-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v93_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v93_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v358) = v0 c
          ∧ r.2.mem ((c.tc : Thread Cert.ReferenceIdeal.nD Cert.ReferenceIdeal.τ).loc Cert.ReferenceIdeal.main_v378) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64512x32 : Shape := ⟨2, ![64512, 32]⟩
abbrev S64512x1000 : Shape := ⟨2, ![64512, 1000]⟩
abbrev S64512x4x64 : Shape := ⟨3, ![64512, 4, 64]⟩
abbrev S64512 : Shape := ⟨1, ![64512]⟩
abbrev S32x128 : Shape := ⟨2, ![32, 128]⟩
abbrev S128 : Shape := ⟨1, ![128]⟩
abbrev S1000x128 : Shape := ⟨2, ![1000, 128]⟩
abbrev S64x128 : Shape := ⟨2, ![64, 128]⟩
abbrev S1408x512 : Shape := ⟨2, ![1408, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S64512x32 : S_.BroadcastsInDim S64512x32 (![] : Fin 0 → Fin S64512x32.rank)
  reducesTo_S64512x32_S_d0_1 : S64512x32.ReducesTo [0, 1] S_
  h_S_ : 0 < S_.numel
  bcast_S_S64512x1000 : S_.BroadcastsInDim S64512x1000 (![] : Fin 0 → Fin S64512x1000.rank)
  reducesTo_S64512x1000_S_d0_1 : S64512x1000.ReducesTo [0, 1] S_
  bcast_S_S64512x4x64 : S_.BroadcastsInDim S64512x4x64 (![] : Fin 0 → Fin S64512x4x64.rank)
  reducesTo_S64512x4x64_S_d0_1_2 : S64512x4x64.ReducesTo [0, 1, 2] S_
  bcast_S_S64512 : S_.BroadcastsInDim S64512 (![] : Fin 0 → Fin S64512.rank)
  reducesTo_S64512_S_d0 : S64512.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S1000x128 : S_.BroadcastsInDim S1000x128 (![] : Fin 0 → Fin S1000x128.rank)
  reducesTo_S1000x128_S_d0_1 : S1000x128.ReducesTo [0, 1] S_
  bcast_S_S64x128 : S_.BroadcastsInDim S64x128 (![] : Fin 0 → Fin S64x128.rank)
  reducesTo_S64x128_S_d0_1 : S64x128.ReducesTo [0, 1] S_
  bcast_S_S1408x512 : S_.BroadcastsInDim S1408x512 (![] : Fin 0 → Fin S1408x512.rank)
  reducesTo_S1408x512_S_d0_1 : S1408x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part9 {F : FTy → Type} [FloatOps F] (main_arg33 : FVec F S1 .f32) (main_v153 : IVec S_ 1) : IVec S_ 1 :=
  let main_v154 : FVec F S1 .f32 := Host.absf main_arg33
  let main_cst_60 : FVec F S_ .f32 := constant S_ .f32 0x7F800000#32
  let main_v155 : FVec F S1 .f32 := broadcastInDim S1 ![] bcast_S_S1 main_cst_60
  let main_v156 : IVec S1 1 := cmpf .olt main_v154 main_v155
  let main_c_61 : IVec S_ 1 := constantI S_ 1 1#1
  let main_v157 : IVec S_ 1 := (fun x v => Host.reduce IntOp.andi x v reducesTo_S1_S_d0 h_S_) main_v156 main_c_61
  let main_v158 : IVec S_ 1 := andi main_v153 main_v157
  main_v158

def fn_part8 {F : FTy → Type} [FloatOps F] (main_arg30 : FVec F S128x128 .f32) (main_arg31 : FVec F S128 .f32) (main_arg32 : FVec F S128x1 .f32) (main_arg33 : FVec F S1 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128x128 .f32 := Host.absf main_arg30
  let main_cst_54 : FVec F S_ .f32 := constant S_ .f32 0x7F800000#32
  let main_v140 : FVec F S128x128 .f32 := broadcastInDim S128x128 ![] bcast_S_S128x128 main_cst_54
  let main_v141 : IVec S128x128 1 := cmpf .olt main_v139 main_v140
  let main_c_55 : IVec S_ 1 := constantI S_ 1 1#1
  let main_v142 : IVec S_ 1 := (fun x v => Host.reduce IntOp.andi x v reducesTo_S128x128_S_d0_1 h_S_) main_v141 main_c_55
  let main_v143 : IVec S_ 1 := andi main_v138 main_v142
  let main_v144 : FVec F S128 .f32 := Host.absf main_arg31
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128x1 .f32 := Host.absf main_arg32
  let main_cst_58 : FVec F S_ .f32 := constant S_ .f32 0x7F800000#32
  let main_v150 : FVec F S128x1 .f32 := broadcastInDim S128x1 ![] bcast_S_S128x1 main_cst_58
  let main_v151 : IVec S128x1 1 := cmpf .olt main_v149 main_v150
  let main_c_59 : IVec S_ 1 := constantI S_ 1 1#1
  let main_v152 : IVec S_ 1 := (fun x v => Host.reduce IntOp.andi x v reducesTo_S128x1_S_d0_1 h_S_) main_v151 main_c_59
  let main_v153 : IVec S_ 1 := andi main_v148 main_v152
  fn_part9 (F := F) main_arg33 main_v153

def fn_part7 {F : FTy → Type} [FloatOps F] (main_arg27 : FVec F S1 .f32) (main_arg28 : FVec F S128x128 .f32) (main_arg29 : FVec F S128 .f32) (main_arg30 : FVec F S128x128 .f32) (main_arg31 : FVec F S128 .f32) (main_arg32 : FVec F S128x1 .f32) (main_arg33 : FVec F S1 .f32) (main_v118 : IVec S_ 1) (main_v119 : FVec F S128x1 .f32) : IVec S_ 1 :=
  let main_cst_46 : FVec F S_ .f32 := constant S_ .f32 0x7F800000#32
  let main_v120 : FVec F S128x1 .f32 := broadcastInDim S128x1 ![] bcast_S_S128x1 main_cst_46
  let main_v121 : IVec S128x1 1 := cmpf .olt main_v119 main_v120
  let main_c_47 : IVec S_ 1 := constantI S_ 1 1#1
  let main_v122 : IVec S_ 1 := (fun x v => Host.reduce IntOp.andi x v reducesTo_S128x1_S_d0_1 h_S_) main_v121 main_c_47
  let main_v123 : IVec S_ 1 := andi main_v118 main_v122
  let main_v124 : FVec F S1 .f32 := Host.absf main_arg27
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_v129 : FVec F S128x128 .f32 := Host.absf main_arg28
  let main_cst_50 : FVec F S_ .f32 := constant S_ .f32 0x7F800000#32
  let main_v130 : FVec F S128x128 .f32 := broadcastInDim S128x128 ![] bcast_S_S128x128 main_cst_50
  let main_v131 : IVec S128x128 1 := cmpf .olt main_v129 main_v130
  let main_c_51 : IVec S_ 1 := constantI S_ 1 1#1
  let main_v132 : IVec S_ 1 := (fun x v => Host.reduce IntOp.andi x v reducesTo_S128x128_S_d0_1 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg30 main_arg31 main_arg32 main_arg33 main_v133 main_v136

def fn_part6 {F : FTy → Type} [FloatOps F] (main_arg23 : FVec F S128 .f32) (main_arg24 : FVec F S128x128 .f32) (main_arg25 : FVec F S128 .f32) (main_arg26 : FVec F S128x1 .f32) (main_arg27 : FVec F S1 .f32) (main_arg28 : FVec F S128x128 .f32) (main_arg29 : FVec F S128 .f32) (main_arg30 : FVec F S128x128 .f32) (main_arg31 : FVec F S128 .f32) (main_arg32 : FVec F S128x1 .f32) (main_arg33 : FVec F S1 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg24
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x1 .f32 := Host.absf main_arg26
  fn_part7 (F := F) main_arg27 main_arg28 main_arg29 main_arg30 main_arg31 main_arg32 main_arg33 main_v118 main_v119

def fn_part5 {F : FTy → Type} [FloatOps F] (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S128x1 .f32) (main_arg27 : FVec F S1 .f32) (main_arg28 : FVec F S128x128 .f32) (main_arg29 : FVec F S128 .f32) (main_arg30 : FVec F S128x128 .f32) (main_arg31 : FVec F S128 .f32) (main_arg32 : FVec F S128x1 .f32) (main_arg33 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x128 .f32 := Host.absf main_arg20
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x128 .f32 := Host.absf main_arg22
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_arg33 main_v98 main_v101 main_c_39

def fn_part4 {F : FTy → Type} [FloatOps F] (main_arg16 : FVec F S1408x512 .f32) (main_arg17 : FVec F S512 .f32) (main_arg18 : FVec F S512x256 .f32) (main_arg19 : FVec F S256 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S128x1 .f32) (main_arg27 : FVec F S1 .f32) (main_arg28 : FVec F S128x128 .f32) (main_arg29 : FVec F S128 .f32) (main_arg30 : FVec F S128x128 .f32) (main_arg31 : FVec F S128 .f32) (main_arg32 : FVec F S128x1 .f32) (main_arg33 : FVec F S1 .f32) (main_v63 : IVec S_ 1) (main_v67 : IVec S_ 1) : IVec S_ 1 :=
  let main_v68 : IVec S_ 1 := andi main_v63 main_v67
  let main_v69 : FVec F S1408x512 .f32 := Host.absf main_arg16
  let main_cst_26 : FVec F S_ .f32 := constant S_ .f32 0x7F800000#32
  let main_v70 : FVec F S1408x512 .f32 := broadcastInDim S1408x512 ![] bcast_S_S1408x512 main_cst_26
  let main_v71 : IVec S1408x512 1 := cmpf .olt main_v69 main_v70
  let main_c_27 : IVec S_ 1 := constantI S_ 1 1#1
  let main_v72 : IVec S_ 1 := (fun x v => Host.reduce IntOp.andi x v reducesTo_S1408x512_S_d0_1 h_S_) main_v71 main_c_27
  let main_v73 : IVec S_ 1 := andi main_v68 main_v72
  let main_v74 : FVec F S512 .f32 := Host.absf main_arg17
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x256 .f32 := Host.absf main_arg18
  let main_cst_30 : FVec F S_ .f32 := constant S_ .f32 0x7F800000#32
  let main_v80 : FVec F S512x256 .f32 := broadcastInDim S512x256 ![] bcast_S_S512x256 main_cst_30
  let main_v81 : IVec S512x256 1 := cmpf .olt main_v79 main_v80
  let main_c_31 : IVec S_ 1 := constantI S_ 1 1#1
  let main_v82 : IVec S_ 1 := (fun x v => Host.reduce IntOp.andi x v reducesTo_S512x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_arg33 main_v83 main_v84 main_cst_32

def fn_part3 {F : FTy → Type} [FloatOps F] (main_arg13 : FVec F S128 .f32) (main_arg14 : FVec F S64x128 .f32) (main_arg15 : FVec F S128 .f32) (main_arg16 : FVec F S1408x512 .f32) (main_arg17 : FVec F S512 .f32) (main_arg18 : FVec F S512x256 .f32) (main_arg19 : FVec F S256 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S128x1 .f32) (main_arg27 : FVec F S1 .f32) (main_arg28 : FVec F S128x128 .f32) (main_arg29 : FVec F S128 .f32) (main_arg30 : FVec F S128x128 .f32) (main_arg31 : FVec F S128 .f32) (main_arg32 : FVec F S128x1 .f32) (main_arg33 : FVec F S1 .f32) (main_v48 : IVec S_ 1) (main_v49 : FVec F S1000x128 .f32) (main_v50 : FVec F S1000x128 .f32) : IVec S_ 1 :=
  let main_v51 : IVec S1000x128 1 := cmpf .olt main_v49 main_v50
  let main_c_19 : IVec S_ 1 := constantI S_ 1 1#1
  let main_v52 : IVec S_ 1 := (fun x v => Host.reduce IntOp.andi x v reducesTo_S1000x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64x128 .f32 := Host.absf main_arg14
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_arg33 main_v63 main_v67

def fn_part2 {F : FTy → Type} [FloatOps F] (main_arg9 : FVec F S128 .f32) (main_arg10 : FVec F S32x128 .f32) (main_arg11 : FVec F S128 .f32) (main_arg12 : FVec F S1000x128 .f32) (main_arg13 : FVec F S128 .f32) (main_arg14 : FVec F S64x128 .f32) (main_arg15 : FVec F S128 .f32) (main_arg16 : FVec F S1408x512 .f32) (main_arg17 : FVec F S512 .f32) (main_arg18 : FVec F S512x256 .f32) (main_arg19 : FVec F S256 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S128x1 .f32) (main_arg27 : FVec F S1 .f32) (main_arg28 : FVec F S128x128 .f32) (main_arg29 : FVec F S128 .f32) (main_arg30 : FVec F S128x128 .f32) (main_arg31 : FVec F S128 .f32) (main_arg32 : FVec F S128x1 .f32) (main_arg33 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32x128 .f32 := Host.absf main_arg10
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1000x128 .f32 := Host.absf main_arg12
  let main_cst_18 : FVec F S_ .f32 := constant S_ .f32 0x7F800000#32
  let main_v50 : FVec F S1000x128 .f32 := broadcastInDim S1000x128 ![] bcast_S_S1000x128 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v48 main_v49 main_v50

def fn_part1 {F : FTy → Type} [FloatOps F] (main_arg4 : FVec F S64512x4x64 .f32) (main_arg5 : FVec F S64512 .f32) (main_arg8 : FVec F S32x128 .f32) (main_arg9 : FVec F S128 .f32) (main_arg10 : FVec F S32x128 .f32) (main_arg11 : FVec F S128 .f32) (main_arg12 : FVec F S1000x128 .f32) (main_arg13 : FVec F S128 .f32) (main_arg14 : FVec F S64x128 .f32) (main_arg15 : FVec F S128 .f32) (main_arg16 : FVec F S1408x512 .f32) (main_arg17 : FVec F S512 .f32) (main_arg18 : FVec F S512x256 .f32) (main_arg19 : FVec F S256 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S128x1 .f32) (main_arg27 : FVec F S1 .f32) (main_arg28 : FVec F S128x128 .f32) (main_arg29 : FVec F S128 .f32) (main_arg30 : FVec F S128x128 .f32) (main_arg31 : FVec F S128 .f32) (main_arg32 : FVec F S128x1 .f32) (main_arg33 : FVec F S1 .f32) (main_v13 : IVec S_ 1) (main_v16 : IVec S64512x4x64 1) : IVec S_ 1 :=
  let main_c_5 : IVec S_ 1 := constantI S_ 1 1#1
  let main_v17 : IVec S_ 1 := (fun x v => Host.reduce IntOp.andi x v reducesTo_S64512x4x64_S_d0_1_2 h_S_) main_v16 main_c_5
  let main_v18 : IVec S_ 1 := andi main_v13 main_v17
  let main_v19 : FVec F S64512x4x64 .f32 := Host.absf main_arg4
  let main_cst_6 : FVec F S_ .f32 := constant S_ .f32 0x7F800000#32
  let main_v20 : FVec F S64512x4x64 .f32 := broadcastInDim S64512x4x64 ![] bcast_S_S64512x4x64 main_cst_6
  let main_v21 : IVec S64512x4x64 1 := cmpf .olt main_v19 main_v20
  let main_c_7 : IVec S_ 1 := constantI S_ 1 1#1
  let main_v22 : IVec S_ 1 := (fun x v => Host.reduce IntOp.andi x v reducesTo_S64512x4x64_S_d0_1_2 h_S_) main_v21 main_c_7
  let main_v23 : IVec S_ 1 := andi main_v18 main_v22
  let main_v24 : FVec F S64512 .f32 := Host.absf main_arg5
  let main_cst_8 : FVec F S_ .f32 := constant S_ .f32 0x7F800000#32
  let main_v25 : FVec F S64512 .f32 := broadcastInDim S64512 ![] bcast_S_S64512 main_cst_8
  let main_v26 : IVec S64512 1 := cmpf .olt main_v24 main_v25
  let main_c_9 : IVec S_ 1 := constantI S_ 1 1#1
  let main_v27 : IVec S_ 1 := (fun x v => Host.reduce IntOp.andi x v reducesTo_S64512_S_d0 h_S_) main_v26 main_c_9
  let main_v28 : IVec S_ 1 := andi main_v23 main_v27
  let main_v29 : FVec F S32x128 .f32 := Host.absf main_arg8
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v33

def fn {F : FTy → Type} [FloatOps F] (main_arg0 : FVec F S64512x32 .f32) (main_arg1 : FVec F S64512x32 .f32) (main_arg2 : FVec F S64512x1000 .f32) (main_arg3 : FVec F S64512x4x64 .f32) (main_arg4 : FVec F S64512x4x64 .f32) (main_arg5 : FVec F S64512 .f32) (main_arg6 : IVec S64512 32) (main_arg7 : IVec S64512 32) (main_arg8 : FVec F S32x128 .f32) (main_arg9 : FVec F S128 .f32) (main_arg10 : FVec F S32x128 .f32) (main_arg11 : FVec F S128 .f32) (main_arg12 : FVec F S1000x128 .f32) (main_arg13 : FVec F S128 .f32) (main_arg14 : FVec F S64x128 .f32) (main_arg15 : FVec F S128 .f32) (main_arg16 : FVec F S1408x512 .f32) (main_arg17 : FVec F S512 .f32) (main_arg18 : FVec F S512x256 .f32) (main_arg19 : FVec F S256 .f32) (main_arg20 : FVec F S256x128 .f32) (main_arg21 : FVec F S128 .f32) (main_arg22 : FVec F S128x128 .f32) (main_arg23 : FVec F S128 .f32) (main_arg24 : FVec F S128x128 .f32) (main_arg25 : FVec F S128 .f32) (main_arg26 : FVec F S128x1 .f32) (main_arg27 : FVec F S1 .f32) (main_arg28 : FVec F S128x128 .f32) (main_arg29 : FVec F S128 .f32) (main_arg30 : FVec F S128x128 .f32) (main_arg31 : FVec F S128 .f32) (main_arg32 : FVec F S128x1 .f32) (main_arg33 : FVec F S1 .f32) : IVec S_ 1 :=
  let main_v0 : FVec F S64512x32 .f32 := Host.absf main_arg0
  let main_cst : FVec F S_ .f32 := constant S_ .f32 0x7F800000#32
  let main_v1 : FVec F S64512x32 .f32 := broadcastInDim S64512x32 ![] bcast_S_S64512x32 main_cst
  let main_v2 : IVec S64512x32 1 := cmpf .olt main_v0 main_v1
  let main_c : IVec S_ 1 := constantI S_ 1 1#1
  let main_v3 : IVec S_ 1 := (fun x v => Host.reduce IntOp.andi x v reducesTo_S64512x32_S_d0_1 h_S_) main_v2 main_c
  let main_v4 : FVec F S64512x32 .f32 := Host.absf main_arg1
  let main_cst_0 : FVec F S_ .f32 := constant S_ .f32 0x7F800000#32
  let main_v5 : FVec F S64512x32 .f32 := broadcastInDim S64512x32 ![] bcast_S_S64512x32 main_cst_0
  let main_v6 : IVec S64512x32 1 := cmpf .olt main_v4 main_v5
  let main_c_1 : IVec S_ 1 := constantI S_ 1 1#1
  let main_v7 : IVec S_ 1 := (fun x v => Host.reduce IntOp.andi x v reducesTo_S64512x32_S_d0_1 h_S_) main_v6 main_c_1
  let main_v8 : IVec S_ 1 := andi main_v3 main_v7
  let main_v9 : FVec F S64512x1000 .f32 := Host.absf main_arg2
  let main_cst_2 : FVec F S_ .f32 := constant S_ .f32 0x7F800000#32
  let main_v10 : FVec F S64512x1000 .f32 := broadcastInDim S64512x1000 ![] bcast_S_S64512x1000 main_cst_2
  let main_v11 : IVec S64512x1000 1 := cmpf .olt main_v9 main_v10
  let main_c_3 : IVec S_ 1 := constantI S_ 1 1#1
  let main_v12 : IVec S_ 1 := (fun x v => Host.reduce IntOp.andi x v reducesTo_S64512x1000_S_d0_1 h_S_) main_v11 main_c_3
  let main_v13 : IVec S_ 1 := andi main_v8 main_v12
  let main_v14 : FVec F S64512x4x64 .f32 := Host.absf main_arg3
  let main_cst_4 : FVec F S_ .f32 := constant S_ .f32 0x7F800000#32
  let main_v15 : FVec F S64512x4x64 .f32 := broadcastInDim S64512x4x64 ![] bcast_S_S64512x4x64 main_cst_4
  let main_v16 : IVec S64512x4x64 1 := cmpf .olt main_v14 main_v15
  fn_part1 (F := F) main_arg4 main_arg5 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_v13 main_v16
-- ==== Kernel.lean ====
abbrev S64512x32 : Shape := ⟨2, ![64512, 32]⟩
abbrev S64512x1000 : Shape := ⟨2, ![64512, 1000]⟩
abbrev S64512x4x64 : Shape := ⟨3, ![64512, 4, 64]⟩
abbrev S64512 : Shape := ⟨1, ![64512]⟩
abbrev S32x128 : Shape := ⟨2, ![32, 128]⟩
abbrev S128 : Shape := ⟨1, ![128]⟩
abbrev S1000x128 : Shape := ⟨2, ![1000, 128]⟩
abbrev S64x128 : Shape := ⟨2, ![64, 128]⟩
abbrev S1408x512 : Shape := ⟨2, ![1408, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S64512x256 : Shape := ⟨2, ![64512, 256]⟩
abbrev S64512x1 : Shape := ⟨2, ![64512, 1]⟩
abbrev S_ : Shape := ⟨0, ![]⟩
abbrev S256x512 : Shape := ⟨2, ![256, 512]⟩
abbrev S2 : Shape := ⟨1, ![2]⟩
abbrev S1x128 : Shape := ⟨2, ![1, 128]⟩
abbrev S1x512 : Shape := ⟨2, ![1, 512]⟩
abbrev S1x256 : Shape := ⟨2, ![1, 256]⟩
abbrev S32768x128 : Shape := ⟨2, ![32768, 128]⟩
abbrev S1024x32 : Shape := ⟨2, ![1024, 32]⟩
abbrev S1024x1000 : Shape := ⟨2, ![1024, 1000]⟩
abbrev S1024x256 : Shape := ⟨2, ![1024, 256]⟩
abbrev S1024x1 : Shape := ⟨2, ![1024, 1]⟩
abbrev S1024x128 : Shape := ⟨2, ![1024, 128]⟩
abbrev S1024x512 : Shape := ⟨2, ![1024, 512]⟩
abbrev S1024x1408 : Shape := ⟨2, ![1024, 1408]⟩
abbrev S16384x2x128 : Shape := ⟨3, ![16384, 2, 128]⟩
abbrev S16384x128 : Shape := ⟨2, ![16384, 128]⟩
abbrev S1024x2x128 : Shape := ⟨3, ![1024, 2, 128]⟩
abbrev S1024x1x128 : Shape := ⟨3, ![1024, 1, 128]⟩
abbrev S8192x2x128 : Shape := ⟨3, ![8192, 2, 128]⟩
abbrev S8192x128 : Shape := ⟨2, ![8192, 128]⟩
abbrev S4096x2x128 : Shape := ⟨3, ![4096, 2, 128]⟩
abbrev S4096x128 : Shape := ⟨2, ![4096, 128]⟩
abbrev S2048x2x128 : Shape := ⟨3, ![2048, 2, 128]⟩
abbrev S2048x128 : Shape := ⟨2, ![2048, 128]⟩
abbrev S1x1 : Shape := ⟨2, ![1, 1]⟩

abbrev nBuf : Space → Nat
  | .hbm => 150
  | .vmem => 243
  | .smem => 0
  | _ => 0

abbrev hbmTy0_0 (i : Nat) : BufTy := match i % 128 with
  | 0 => ⟨S64512x32, .f32⟩
  | 1 => ⟨S64512x32, .f32⟩
  | 2 => ⟨S64512x1000, .f32⟩
  | 3 => ⟨S64512x4x64, .f32⟩
  | 4 => ⟨S64512x4x64, .f32⟩
  | 5 => ⟨S64512, .f32⟩
  | 6 => ⟨S64512, .i32⟩
  | 7 => ⟨S64512, .i32⟩
  | 8 => ⟨S32x128, .f32⟩
  | 9 => ⟨S128, .f32⟩
  | 10 => ⟨S32x128, .f32⟩
  | 11 => ⟨S128, .f32⟩
  | 12 => ⟨S1000x128, .f32⟩
  | 13 => ⟨S128, .f32⟩
  | 14 => ⟨S64x128, .f32⟩
  | 15 => ⟨S128, .f32⟩
  | 16 => ⟨S1408x512, .f32⟩
  | 17 => ⟨S512, .f32⟩
  | 18 => ⟨S512x256, .f32⟩
  | 19 => ⟨S256, .f32⟩
  | 20 => ⟨S256x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x1, .f32⟩
  | 27 => ⟨S1, .f32⟩
  | 28 => ⟨S128x128, .f32⟩
  | 29 => ⟨S128, .f32⟩
  | 30 => ⟨S128x128, .f32⟩
  | 31 => ⟨S128, .f32⟩
  | 32 => ⟨S128x1, .f32⟩
  | 33 => ⟨S1, .f32⟩
  | 34 => ⟨S64512x256, .f32⟩
  | 35 => ⟨S64512x256, .f32⟩
  | 36 => ⟨S64512x1, .f32⟩
  | 37 => ⟨S64512, .f32⟩
  | 38 => ⟨S64512x1, .f32⟩
  | 39 => ⟨S64512, .f32⟩
  | 40 => ⟨S64512x1, .f32⟩
  | 41 => ⟨S_, .f32⟩
  | 42 => ⟨S256x512, .f32⟩
  | 43 => ⟨S_, .i32⟩
  | 44 => ⟨S1, .i32⟩
  | 45 => ⟨S_, .i32⟩
  | 46 => ⟨S1, .i32⟩
  | 47 => ⟨S2, .i32⟩
  | 48 => ⟨S256x512, .f32⟩
  | 49 => ⟨S_, .i32⟩
  | 50 => ⟨S1, .i32⟩
  | 51 => ⟨S_, .i32⟩
  | 52 => ⟨S1, .i32⟩
  | 53 => ⟨S2, .i32⟩
  | 54 => ⟨S256x512, .f32⟩
  | 55 => ⟨S_, .i32⟩
  | 56 => ⟨S1, .i32⟩
  | 57 => ⟨S_, .i32⟩
  | 58 => ⟨S1, .i32⟩
  | 59 => ⟨S2, .i32⟩
  | 60 => ⟨S256x512, .f32⟩
  | 61 => ⟨S_, .i32⟩
  | 62 => ⟨S1, .i32⟩
  | 63 => ⟨S_, .i32⟩
  | 64 => ⟨S1, .i32⟩
  | 65 => ⟨S2, .i32⟩
  | 66 => ⟨S256x512, .f32⟩
  | 67 => ⟨S1x128, .f32⟩
  | 68 => ⟨S1x128, .f32⟩
  | 69 => ⟨S1x128, .f32⟩
  | 70 => ⟨S1x128, .f32⟩
  | 71 => ⟨S1x512, .f32⟩
  | 72 => ⟨S1x256, .f32⟩
  | 73 => ⟨S1x128, .f32⟩
  | 74 => ⟨S32768x128, .f32⟩
  | 75 => ⟨S32768x128, .f32⟩
  | 76 => ⟨S32768x128, .f32⟩
  | 77 => ⟨S16384x2x128, .f32⟩
  | 78 => ⟨S16384x2x128, .f32⟩
  | 79 => ⟨S16384x2x128, .f32⟩
  | 80 => ⟨S1x128, .f32⟩
  | 81 => ⟨S1x128, .f32⟩
  | 82 => ⟨S1x128, .f32⟩
  | 83 => ⟨S1x128, .f32⟩
  | 84 => ⟨S1x512, .f32⟩
  | 85 => ⟨S1x256, .f32⟩
  | 86 => ⟨S1x128, .f32⟩
  | 87 => ⟨S16384x128, .f32⟩
  | 88 => ⟨S16384x128, .f32⟩
  | 89 => ⟨S16384x128, .f32⟩
  | 90 => ⟨S8192x2x128, .f32⟩
  | 91 => ⟨S8192x2x128, .f32⟩
  | 92 => ⟨S8192x2x128, .f32⟩
  | 93 => ⟨S1x128, .f32⟩
  | 94 => ⟨S1x128, .f32⟩
  | 95 => ⟨S1x128, .f32⟩
  | 96 => ⟨S1x128, .f32⟩
  | 97 => ⟨S1x512, .f32⟩
  | 98 => ⟨S1x256, .f32⟩
  | 99 => ⟨S1x128, .f32⟩
  | 100 => ⟨S8192x128, .f32⟩
  | 101 => ⟨S8192x128, .f32⟩
  | 102 => ⟨S8192x128, .f32⟩
  | 103 => ⟨S4096x2x128, .f32⟩
  | 104 => ⟨S4096x2x128, .f32⟩
  | 105 => ⟨S4096x2x128, .f32⟩
  | 106 => ⟨S1x128, .f32⟩
  | 107 => ⟨S1x128, .f32⟩
  | 108 => ⟨S1x128, .f32⟩
  | 109 => ⟨S1x128, .f32⟩
  | 110 => ⟨S1x512, .f32⟩
  | 111 => ⟨S1x256, .f32⟩
  | 112 => ⟨S1x128, .f32⟩
  | 113 => ⟨S4096x128, .f32⟩
  | 114 => ⟨S4096x128, .f32⟩
  | 115 => ⟨S4096x128, .f32⟩
  | 116 => ⟨S2048x2x128, .f32⟩
  | 117 => ⟨S2048x2x128, .f32⟩
  | 118 => ⟨S2048x2x128, .f32⟩
  | 119 => ⟨S1x128, .f32⟩
  | 120 => ⟨S1x128, .f32⟩
  | 121 => ⟨S1x128, .f32⟩
  | 122 => ⟨S1x128, .f32⟩
  | 123 => ⟨S1x512, .f32⟩
  | 124 => ⟨S1x256, .f32⟩
  | 125 => ⟨S1x128, .f32⟩
  | 126 => ⟨S2048x128, .f32⟩
  | 127 => ⟨S2048x128, .f32⟩
  | _ => ⟨S64512x32, .f32⟩

abbrev hbmTy0_1 (i : Nat) : BufTy := match i % 128 with
  | 0 => ⟨S2048x128, .f32⟩
  | 1 => ⟨S1024x2x128, .f32⟩
  | 2 => ⟨S1024x2x128, .f32⟩
  | 3 => ⟨S1024x2x128, .f32⟩
  | 4 => ⟨S1x128, .f32⟩
  | 5 => ⟨S1x128, .f32⟩
  | 6 => ⟨S1x128, .f32⟩
  | 7 => ⟨S1x128, .f32⟩
  | 8 => ⟨S1x512, .f32⟩
  | 9 => ⟨S1x256, .f32⟩
  | 10 => ⟨S1x128, .f32⟩
  | 11 => ⟨S1024x128, .f32⟩
  | 12 => ⟨S1024x128, .f32⟩
  | 13 => ⟨S1024x128, .f32⟩
  | 14 => ⟨S1x128, .f32⟩
  | 15 => ⟨S1x128, .f32⟩
  | 16 => ⟨S1x1, .f32⟩
  | 17 => ⟨S1x128, .f32⟩
  | 18 => ⟨S1x128, .f32⟩
  | 19 => ⟨S1x1, .f32⟩
  | 20 => ⟨S1024x1, .f32⟩
  | 21 => ⟨S1024x1, .f32⟩
  | _ => ⟨S64512x32, .f32⟩

abbrev hbmTy (i : Nat) : BufTy := match i / 128 with
  | 0 => hbmTy0_0 i
  | 1 => hbmTy0_1 i
  | _ => ⟨S64512x32, .f32⟩

abbrev vmemTy0_0 (i : Nat) : BufTy := match i % 128 with
  | 0 => ⟨S1024x32, .f32⟩
  | 1 => ⟨S1024x32, .f32⟩
  | 2 => ⟨S1024x32, .f32⟩
  | 3 => ⟨S1024x32, .f32⟩
  | 4 => ⟨S1024x1000, .f32⟩
  | 5 => ⟨S1024x1000, .f32⟩
  | 6 => ⟨S1024x256, .f32⟩
  | 7 => ⟨S1024x256, .f32⟩
  | 8 => ⟨S1024x256, .f32⟩
  | 9 => ⟨S1024x256, .f32⟩
  | 10 => ⟨S1024x1, .f32⟩
  | 11 => ⟨S1024x1, .f32⟩
  | 12 => ⟨S32x128, .f32⟩
  | 13 => ⟨S1x128, .f32⟩
  | 14 => ⟨S32x128, .f32⟩
  | 15 => ⟨S1x128, .f32⟩
  | 16 => ⟨S1000x128, .f32⟩
  | 17 => ⟨S1x128, .f32⟩
  | 18 => ⟨S256x512, .f32⟩
  | 19 => ⟨S1x128, .f32⟩
  | 20 => ⟨S1408x512, .f32⟩
  | 21 => ⟨S1x512, .f32⟩
  | 22 => ⟨S512x256, .f32⟩
  | 23 => ⟨S1x256, .f32⟩
  | 24 => ⟨S256x128, .f32⟩
  | 25 => ⟨S1x128, .f32⟩
  | 26 => ⟨S1024x128, .f32⟩
  | 27 => ⟨S1024x128, .f32⟩
  | 28 => ⟨S1024x128, .f32⟩
  | 29 => ⟨S1024x128, .f32⟩
  | 30 => ⟨S1024x128, .f32⟩
  | 31 => ⟨S1024x128, .f32⟩
  | 32 => ⟨S1024x32, .f32⟩
  | 33 => ⟨S1024x32, .f32⟩
  | 34 => ⟨S1024x32, .f32⟩
  | 35 => ⟨S1024x32, .f32⟩
  | 36 => ⟨S1024x1000, .f32⟩
  | 37 => ⟨S1024x1000, .f32⟩
  | 38 => ⟨S1024x256, .f32⟩
  | 39 => ⟨S1024x256, .f32⟩
  | 40 => ⟨S1024x256, .f32⟩
  | 41 => ⟨S1024x256, .f32⟩
  | 42 => ⟨S1024x1, .f32⟩
  | 43 => ⟨S1024x1, .f32⟩
  | 44 => ⟨S1024x1, .f32⟩
  | 45 => ⟨S1024x1, .f32⟩
  | 46 => ⟨S1024x1, .f32⟩
  | 47 => ⟨S1024x1, .f32⟩
  | 48 => ⟨S1024x2x128, .f32⟩
  | 49 => ⟨S1024x2x128, .f32⟩
  | 50 => ⟨S1024x2x128, .f32⟩
  | 51 => ⟨S1024x2x128, .f32⟩
  | 52 => ⟨S1024x2x128, .f32⟩
  | 53 => ⟨S1024x2x128, .f32⟩
  | 54 => ⟨S32x128, .f32⟩
  | 55 => ⟨S1x128, .f32⟩
  | 56 => ⟨S32x128, .f32⟩
  | 57 => ⟨S1x128, .f32⟩
  | 58 => ⟨S1000x128, .f32⟩
  | 59 => ⟨S1x128, .f32⟩
  | 60 => ⟨S256x512, .f32⟩
  | 61 => ⟨S1x128, .f32⟩
  | 62 => ⟨S1408x512, .f32⟩
  | 63 => ⟨S1x512, .f32⟩
  | 64 => ⟨S512x256, .f32⟩
  | 65 => ⟨S1x256, .f32⟩
  | 66 => ⟨S256x128, .f32⟩
  | 67 => ⟨S1x128, .f32⟩
  | 68 => ⟨S1024x128, .f32⟩
  | 69 => ⟨S1024x128, .f32⟩
  | 70 => ⟨S1024x128, .f32⟩
  | 71 => ⟨S1024x128, .f32⟩
  | 72 => ⟨S1024x128, .f32⟩
  | 73 => ⟨S1024x128, .f32⟩
  | 74 => ⟨S1024x32, .f32⟩
  | 75 => ⟨S1024x32, .f32⟩
  | 76 => ⟨S1024x32, .f32⟩
  | 77 => ⟨S1024x32, .f32⟩
  | 78 => ⟨S1024x1000, .f32⟩
  | 79 => ⟨S1024x1000, .f32⟩
  | 80 => ⟨S1024x256, .f32⟩
  | 81 => ⟨S1024x256, .f32⟩
  | 82 => ⟨S1024x256, .f32⟩
  | 83 => ⟨S1024x256, .f32⟩
  | 84 => ⟨S1024x1, .f32⟩
  | 85 => ⟨S1024x1, .f32⟩
  | 86 => ⟨S1024x1, .f32⟩
  | 87 => ⟨S1024x1, .f32⟩
  | 88 => ⟨S1024x1, .f32⟩
  | 89 => ⟨S1024x1, .f32⟩
  | 90 => ⟨S1024x2x128, .f32⟩
  | 91 => ⟨S1024x2x128, .f32⟩
  | 92 => ⟨S1024x2x128, .f32⟩
  | 93 => ⟨S1024x2x128, .f32⟩
  | 94 => ⟨S1024x2x128, .f32⟩
  | 95 => ⟨S1024x2x128, .f32⟩
  | 96 => ⟨S32x128, .f32⟩
  | 97 => ⟨S1x128, .f32⟩
  | 98 => ⟨S32x128, .f32⟩
  | 99 => ⟨S1x128, .f32⟩
  | 100 => ⟨S1000x128, .f32⟩
  | 101 => ⟨S1x128, .f32⟩
  | 102 => ⟨S256x512, .f32⟩
  | 103 => ⟨S1x128, .f32⟩
  | 104 => ⟨S1408x512, .f32⟩
  | 105 => ⟨S1x512, .f32⟩
  | 106 => ⟨S512x256, .f32⟩
  | 107 => ⟨S1x256, .f32⟩
  | 108 => ⟨S256x128, .f32⟩
  | 109 => ⟨S1x128, .f32⟩
  | 110 => ⟨S1024x128, .f32⟩
  | 111 => ⟨S1024x128, .f32⟩
  | 112 => ⟨S1024x128, .f32⟩
  | 113 => ⟨S1024x128, .f32⟩
  | 114 => ⟨S1024x128, .f32⟩
  | 115 => ⟨S1024x128, .f32⟩
  | 116 => ⟨S1024x32, .f32⟩
  | 117 => ⟨S1024x32, .f32⟩
  | 118 => ⟨S1024x32, .f32⟩
  | 119 => ⟨S1024x32, .f32⟩
  | 120 => ⟨S1024x1000, .f32⟩
  | 121 => ⟨S1024x1000, .f32⟩
  | 122 => ⟨S1024x256, .f32⟩
  | 123 => ⟨S1024x256, .f32⟩
  | 124 => ⟨S1024x256, .f32⟩
  | 125 => ⟨S1024x256, .f32⟩
  | 126 => ⟨S1024x1, .f32⟩
  | 127 => ⟨S1024x1, .f32⟩
  | _ => ⟨S64512x32, .f32⟩

abbrev vmemTy0_1 (i : Nat) : BufTy := match i % 128 with
  | 0 => ⟨S1024x1, .f32⟩
  | 1 => ⟨S1024x1, .f32⟩
  | 2 => ⟨S1024x1, .f32⟩
  | 3 => ⟨S1024x1, .f32⟩
  | 4 => ⟨S1024x2x128, .f32⟩
  | 5 => ⟨S1024x2x128, .f32⟩
  | 6 => ⟨S1024x2x128, .f32⟩
  | 7 => ⟨S1024x2x128, .f32⟩
  | 8 => ⟨S1024x2x128, .f32⟩
  | 9 => ⟨S1024x2x128, .f32⟩
  | 10 => ⟨S32x128, .f32⟩
  | 11 => ⟨S1x128, .f32⟩
  | 12 => ⟨S32x128, .f32⟩
  | 13 => ⟨S1x128, .f32⟩
  | 14 => ⟨S1000x128, .f32⟩
  | 15 => ⟨S1x128, .f32⟩
  | 16 => ⟨S256x512, .f32⟩
  | 17 => ⟨S1x128, .f32⟩
  | 18 => ⟨S1408x512, .f32⟩
  | 19 => ⟨S1x512, .f32⟩
  | 20 => ⟨S512x256, .f32⟩
  | 21 => ⟨S1x256, .f32⟩
  | 22 => ⟨S256x128, .f32⟩
  | 23 => ⟨S1x128, .f32⟩
  | 24 => ⟨S1024x128, .f32⟩
  | 25 => ⟨S1024x128, .f32⟩
  | 26 => ⟨S1024x128, .f32⟩
  | 27 => ⟨S1024x128, .f32⟩
  | 28 => ⟨S1024x128, .f32⟩
  | 29 => ⟨S1024x128, .f32⟩
  | 30 => ⟨S1024x32, .f32⟩
  | 31 => ⟨S1024x32, .f32⟩
  | 32 => ⟨S1024x32, .f32⟩
  | 33 => ⟨S1024x32, .f32⟩
  | 34 => ⟨S1024x1000, .f32⟩
  | 35 => ⟨S1024x1000, .f32⟩
  | 36 => ⟨S1024x256, .f32⟩
  | 37 => ⟨S1024x256, .f32⟩
  | 38 => ⟨S1024x256, .f32⟩
  | 39 => ⟨S1024x256, .f32⟩
  | 40 => ⟨S1024x1, .f32⟩
  | 41 => ⟨S1024x1, .f32⟩
  | 42 => ⟨S1024x1, .f32⟩
  | 43 => ⟨S1024x1, .f32⟩
  | 44 => ⟨S1024x1, .f32⟩
  | 45 => ⟨S1024x1, .f32⟩
  | 46 => ⟨S1024x2x128, .f32⟩
  | 47 => ⟨S1024x2x128, .f32⟩
  | 48 => ⟨S1024x2x128, .f32⟩
  | 49 => ⟨S1024x2x128, .f32⟩
  | 50 => ⟨S1024x2x128, .f32⟩
  | 51 => ⟨S1024x2x128, .f32⟩
  | 52 => ⟨S32x128, .f32⟩
  | 53 => ⟨S1x128, .f32⟩
  | 54 => ⟨S32x128, .f32⟩
  | 55 => ⟨S1x128, .f32⟩
  | 56 => ⟨S1000x128, .f32⟩
  | 57 => ⟨S1x128, .f32⟩
  | 58 => ⟨S256x512, .f32⟩
  | 59 => ⟨S1x128, .f32⟩
  | 60 => ⟨S1408x512, .f32⟩
  | 61 => ⟨S1x512, .f32⟩
  | 62 => ⟨S512x256, .f32⟩
  | 63 => ⟨S1x256, .f32⟩
  | 64 => ⟨S256x128, .f32⟩
  | 65 => ⟨S1x128, .f32⟩
  | 66 => ⟨S1024x128, .f32⟩
  | 67 => ⟨S1024x128, .f32⟩
  | 68 => ⟨S1024x128, .f32⟩
  | 69 => ⟨S1024x128, .f32⟩
  | 70 => ⟨S1024x128, .f32⟩
  | 71 => ⟨S1024x128, .f32⟩
  | 72 => ⟨S1024x32, .f32⟩
  | 73 => ⟨S1024x32, .f32⟩
  | 74 => ⟨S1024x1000, .f32⟩
  | 75 => ⟨S1024x256, .f32⟩
  | 76 => ⟨S1024x256, .f32⟩
  | 77 => ⟨S1024x1, .f32⟩
  | 78 => ⟨S1024x1, .f32⟩
  | 79 => ⟨S1024x1, .f32⟩
  | 80 => ⟨S1024x2x128, .f32⟩
  | 81 => ⟨S1024x2x128, .f32⟩
  | 82 => ⟨S1024x2x128, .f32⟩
  | 83 => ⟨S32x128, .f32⟩
  | 84 => ⟨S1x128, .f32⟩
  | 85 => ⟨S32x128, .f32⟩
  | 86 => ⟨S1x128, .f32⟩
  | 87 => ⟨S1000x128, .f32⟩
  | 88 => ⟨S1x128, .f32⟩
  | 89 => ⟨S256x512, .f32⟩
  | 90 => ⟨S1x128, .f32⟩
  | 91 => ⟨S1408x512, .f32⟩
  | 92 => ⟨S1x512, .f32⟩
  | 93 => ⟨S512x256, .f32⟩
  | 94 => ⟨S1x256, .f32⟩
  | 95 => ⟨S256x128, .f32⟩
  | 96 => ⟨S1x128, .f32⟩
  | 97 => ⟨S1024x128, .f32⟩
  | 98 => ⟨S1024x128, .f32⟩
  | 99 => ⟨S1024x128, .f32⟩
  | 100 => ⟨S1024x128, .f32⟩
  | 101 => ⟨S128x128, .f32⟩
  | 102 => ⟨S1x128, .f32⟩
  | 103 => ⟨S128x128, .f32⟩
  | 104 => ⟨S1x128, .f32⟩
  | 105 => ⟨S128x1, .f32⟩
  | 106 => ⟨S1x1, .f32⟩
  | 107 => ⟨S128x128, .f32⟩
  | 108 => ⟨S1x128, .f32⟩
  | 109 => ⟨S128x128, .f32⟩
  | 110 => ⟨S1x128, .f32⟩
  | 111 => ⟨S128x1, .f32⟩
  | 112 => ⟨S1x1, .f32⟩
  | 113 => ⟨S1024x1, .f32⟩
  | 114 => ⟨S1024x1, .f32⟩
  | _ => ⟨S64512x32, .f32⟩

abbrev vmemTy (i : Nat) : BufTy := match i / 128 with
  | 0 => vmemTy0_0 i
  | 1 => vmemTy0_1 i
  | _ => ⟨S64512x32, .f32⟩

abbrev bufTy : (tb : Table) → Fin (tcTables nBuf tb) → BufTy
  | .hbm, ⟨i, _⟩ => hbmTy i
  | .local _ .vmem, ⟨i, _⟩ => vmemTy i
  | _, _ => ⟨S64512x32, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 243 → Bool
  | ⟨i, _⟩ => dmaSemScopedAt i

abbrev sig : RefSig :=
  ofTc nBuf bufTy 0 243 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst : Ref sig .tc := ⟨.hbm, 41, rfl⟩
abbrev main_v7 : Ref sig .tc := ⟨.hbm, 42, rfl⟩
abbrev main_c : Ref sig .tc := ⟨.hbm, 43, rfl⟩
abbrev main_v8 : Ref sig .tc := ⟨.hbm, 44, rfl⟩
abbrev main_c_0 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_c_1 : Ref sig .tc := ⟨.hbm, 49, rfl⟩
abbrev main_v12 : Ref sig .tc := ⟨.hbm, 50, rfl⟩
abbrev main_c_2 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_3 : Ref sig .tc := ⟨.hbm, 55, rfl⟩
abbrev main_v16 : Ref sig .tc := ⟨.hbm, 56, rfl⟩
abbrev main_c_4 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_c_5 : Ref sig .tc := ⟨.hbm, 61, rfl⟩
abbrev main_v20 : Ref sig .tc := ⟨.hbm, 62, rfl⟩
abbrev main_c_6 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31_0 : Ref sig .tc := ⟨.hbm, 74, rfl⟩
abbrev main_v31_1 : Ref sig .tc := ⟨.hbm, 75, rfl⟩
abbrev main_v31_2 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42_0 : Ref sig .tc := ⟨.hbm, 87, rfl⟩
abbrev main_v42_1 : Ref sig .tc := ⟨.hbm, 88, rfl⟩
abbrev main_v42_2 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53_0 : Ref sig .tc := ⟨.hbm, 100, rfl⟩
abbrev main_v53_1 : Ref sig .tc := ⟨.hbm, 101, rfl⟩
abbrev main_v53_2 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64_0 : Ref sig .tc := ⟨.hbm, 113, rfl⟩
abbrev main_v64_1 : Ref sig .tc := ⟨.hbm, 114, rfl⟩
abbrev main_v64_2 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75_0 : Ref sig .tc := ⟨.hbm, 126, rfl⟩
abbrev main_v75_1 : Ref sig .tc := ⟨.hbm, 127, rfl⟩
abbrev main_v75_2 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86_0 : Ref sig .tc := ⟨.hbm, 139, rfl⟩
abbrev main_v86_1 : Ref sig .tc := ⟨.hbm, 140, rfl⟩
abbrev main_v86_2 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93_0 : Ref sig .tc := ⟨.hbm, 148, rfl⟩
abbrev main_v93_1 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc1_stg0_0 : Ref sig .tc := ⟨.vmem, 32, rfl⟩
abbrev cc1_stg0_1 : Ref sig .tc := ⟨.vmem, 33, rfl⟩
abbrev cc1_stg1_0 : Ref sig .tc := ⟨.vmem, 34, rfl⟩
abbrev cc1_stg1_1 : Ref sig .tc := ⟨.vmem, 35, rfl⟩
abbrev cc1_stg2_0 : Ref sig .tc := ⟨.vmem, 36, rfl⟩
abbrev cc1_stg2_1 : Ref sig .tc := ⟨.vmem, 37, rfl⟩
abbrev cc1_stg3_0 : Ref sig .tc := ⟨.vmem, 38, rfl⟩
abbrev cc1_stg3_1 : Ref sig .tc := ⟨.vmem, 39, rfl⟩
abbrev cc1_stg4_0 : Ref sig .tc := ⟨.vmem, 40, rfl⟩
abbrev cc1_stg4_1 : Ref sig .tc := ⟨.vmem, 41, rfl⟩
abbrev cc1_stg5_0 : Ref sig .tc := ⟨.vmem, 42, rfl⟩
abbrev cc1_stg5_1 : Ref sig .tc := ⟨.vmem, 43, rfl⟩
abbrev cc1_stg6_0 : Ref sig .tc := ⟨.vmem, 44, rfl⟩
abbrev cc1_stg6_1 : Ref sig .tc := ⟨.vmem, 45, rfl⟩
abbrev cc1_stg7_0 : Ref sig .tc := ⟨.vmem, 46, rfl⟩
abbrev cc1_stg7_1 : Ref sig .tc := ⟨.vmem, 47, rfl⟩
abbrev cc1_stg8_0 : Ref sig .tc := ⟨.vmem, 48, rfl⟩
abbrev cc1_stg8_1 : Ref sig .tc := ⟨.vmem, 49, rfl⟩
abbrev cc1_stg9_0 : Ref sig .tc := ⟨.vmem, 50, rfl⟩
abbrev cc1_stg9_1 : Ref sig .tc := ⟨.vmem, 51, rfl⟩
abbrev cc1_stg10_0 : Ref sig .tc := ⟨.vmem, 52, rfl⟩
abbrev cc1_stg10_1 : Ref sig .tc := ⟨.vmem, 53, rfl⟩
abbrev cc1_stg11_0 : Ref sig .tc := ⟨.vmem, 54, rfl⟩
abbrev cc1_stg12_0 : Ref sig .tc := ⟨.vmem, 55, rfl⟩
abbrev cc1_stg13_0 : Ref sig .tc := ⟨.vmem, 56, rfl⟩
abbrev cc1_stg14_0 : Ref sig .tc := ⟨.vmem, 57, rfl⟩
abbrev cc1_stg15_0 : Ref sig .tc := ⟨.vmem, 58, rfl⟩
abbrev cc1_stg16_0 : Ref sig .tc := ⟨.vmem, 59, rfl⟩
abbrev cc1_stg17_0 : Ref sig .tc := ⟨.vmem, 60, rfl⟩
abbrev cc1_stg18_0 : Ref sig .tc := ⟨.vmem, 61, rfl⟩
abbrev cc1_stg19_0 : Ref sig .tc := ⟨.vmem, 62, rfl⟩
abbrev cc1_stg20_0 : Ref sig .tc := ⟨.vmem, 63, rfl⟩
abbrev cc1_stg21_0 : Ref sig .tc := ⟨.vmem, 64, rfl⟩
abbrev cc1_stg22_0 : Ref sig .tc := ⟨.vmem, 65, rfl⟩
abbrev cc1_stg23_0 : Ref sig .tc := ⟨.vmem, 66, rfl⟩
abbrev cc1_stg24_0 : Ref sig .tc := ⟨.vmem, 67, rfl⟩
abbrev cc1_stg25_0 : Ref sig .tc := ⟨.vmem, 68, rfl⟩
abbrev cc1_stg25_1 : Ref sig .tc := ⟨.vmem, 69, rfl⟩
abbrev cc1_stg26_0 : Ref sig .tc := ⟨.vmem, 70, rfl⟩
abbrev cc1_stg26_1 : Ref sig .tc := ⟨.vmem, 71, rfl⟩
abbrev cc1_stg27_0 : Ref sig .tc := ⟨.vmem, 72, rfl⟩
abbrev cc1_stg27_1 : Ref sig .tc := ⟨.vmem, 73, rfl⟩
abbrev cc2_stg0_0 : Ref sig .tc := ⟨.vmem, 74, rfl⟩
abbrev cc2_stg0_1 : Ref sig .tc := ⟨.vmem, 75, rfl⟩
abbrev cc2_stg1_0 : Ref sig .tc := ⟨.vmem, 76, rfl⟩
abbrev cc2_stg1_1 : Ref sig .tc := ⟨.vmem, 77, rfl⟩
abbrev cc2_stg2_0 : Ref sig .tc := ⟨.vmem, 78, rfl⟩
abbrev cc2_stg2_1 : Ref sig .tc := ⟨.vmem, 79, rfl⟩
abbrev cc2_stg3_0 : Ref sig .tc := ⟨.vmem, 80, rfl⟩
abbrev cc2_stg3_1 : Ref sig .tc := ⟨.vmem, 81, rfl⟩
abbrev cc2_stg4_0 : Ref sig .tc := ⟨.vmem, 82, rfl⟩
abbrev cc2_stg4_1 : Ref sig .tc := ⟨.vmem, 83, rfl⟩
abbrev cc2_stg5_0 : Ref sig .tc := ⟨.vmem, 84, rfl⟩
abbrev cc2_stg5_1 : Ref sig .tc := ⟨.vmem, 85, rfl⟩
abbrev cc2_stg6_0 : Ref sig .tc := ⟨.vmem, 86, rfl⟩
abbrev cc2_stg6_1 : Ref sig .tc := ⟨.vmem, 87, rfl⟩
abbrev cc2_stg7_0 : Ref sig .tc := ⟨.vmem, 88, rfl⟩
abbrev cc2_stg7_1 : Ref sig .tc := ⟨.vmem, 89, rfl⟩
abbrev cc2_stg8_0 : Ref sig .tc := ⟨.vmem, 90, rfl⟩
abbrev cc2_stg8_1 : Ref sig .tc := ⟨.vmem, 91, rfl⟩
abbrev cc2_stg9_0 : Ref sig .tc := ⟨.vmem, 92, rfl⟩
abbrev cc2_stg9_1 : Ref sig .tc := ⟨.vmem, 93, rfl⟩
abbrev cc2_stg10_0 : Ref sig .tc := ⟨.vmem, 94, rfl⟩
abbrev cc2_stg10_1 : Ref sig .tc := ⟨.vmem, 95, rfl⟩
abbrev cc2_stg11_0 : Ref sig .tc := ⟨.vmem, 96, rfl⟩
abbrev cc2_stg12_0 : Ref sig .tc := ⟨.vmem, 97, rfl⟩
abbrev cc2_stg13_0 : Ref sig .tc := ⟨.vmem, 98, rfl⟩
abbrev cc2_stg14_0 : Ref sig .tc := ⟨.vmem, 99, rfl⟩
abbrev cc2_stg15_0 : Ref sig .tc := ⟨.vmem, 100, rfl⟩
abbrev cc2_stg16_0 : Ref sig .tc := ⟨.vmem, 101, rfl⟩
abbrev cc2_stg17_0 : Ref sig .tc := ⟨.vmem, 102, rfl⟩
abbrev cc2_stg18_0 : Ref sig .tc := ⟨.vmem, 103, rfl⟩
abbrev cc2_stg19_0 : Ref sig .tc := ⟨.vmem, 104, rfl⟩
abbrev cc2_stg20_0 : Ref sig .tc := ⟨.vmem, 105, rfl⟩
abbrev cc2_stg21_0 : Ref sig .tc := ⟨.vmem, 106, rfl⟩
abbrev cc2_stg22_0 : Ref sig .tc := ⟨.vmem, 107, rfl⟩
abbrev cc2_stg23_0 : Ref sig .tc := ⟨.vmem, 108, rfl⟩
abbrev cc2_stg24_0 : Ref sig .tc := ⟨.vmem, 109, rfl⟩
abbrev cc2_stg25_0 : Ref sig .tc := ⟨.vmem, 110, rfl⟩
abbrev cc2_stg25_1 : Ref sig .tc := ⟨.vmem, 111, rfl⟩
abbrev cc2_stg26_0 : Ref sig .tc := ⟨.vmem, 112, rfl⟩
abbrev cc2_stg26_1 : Ref sig .tc := ⟨.vmem, 113, rfl⟩
abbrev cc2_stg27_0 : Ref sig .tc := ⟨.vmem, 114, rfl⟩
abbrev cc2_stg27_1 : Ref sig .tc := ⟨.vmem, 115, rfl⟩
abbrev cc3_stg0_0 : Ref sig .tc := ⟨.vmem, 116, rfl⟩
abbrev cc3_stg0_1 : Ref sig .tc := ⟨.vmem, 117, rfl⟩
abbrev cc3_stg1_0 : Ref sig .tc := ⟨.vmem, 118, rfl⟩
abbrev cc3_stg1_1 : Ref sig .tc := ⟨.vmem, 119, rfl⟩
abbrev cc3_stg2_0 : Ref sig .tc := ⟨.vmem, 120, rfl⟩
abbrev cc3_stg2_1 : Ref sig .tc := ⟨.vmem, 121, rfl⟩
abbrev cc3_stg3_0 : Ref sig .tc := ⟨.vmem, 122, rfl⟩
abbrev cc3_stg3_1 : Ref sig .tc := ⟨.vmem, 123, rfl⟩
abbrev cc3_stg4_0 : Ref sig .tc := ⟨.vmem, 124, rfl⟩
abbrev cc3_stg4_1 : Ref sig .tc := ⟨.vmem, 125, rfl⟩
abbrev cc3_stg5_0 : Ref sig .tc := ⟨.vmem, 126, rfl⟩
abbrev cc3_stg5_1 : Ref sig .tc := ⟨.vmem, 127, rfl⟩
abbrev cc3_stg6_0 : Ref sig .tc := ⟨.vmem, 128, rfl⟩
abbrev cc3_stg6_1 : Ref sig .tc := ⟨.vmem, 129, rfl⟩
abbrev cc3_stg7_0 : Ref sig .tc := ⟨.vmem, 130, rfl⟩
abbrev cc3_stg7_1 : Ref sig .tc := ⟨.vmem, 131, rfl⟩
abbrev cc3_stg8_0 : Ref sig .tc := ⟨.vmem, 132, rfl⟩
abbrev cc3_stg8_1 : Ref sig .tc := ⟨.vmem, 133, rfl⟩
abbrev cc3_stg9_0 : Ref sig .tc := ⟨.vmem, 134, rfl⟩
abbrev cc3_stg9_1 : Ref sig .tc := ⟨.vmem, 135, rfl⟩
abbrev cc3_stg10_0 : Ref sig .tc := ⟨.vmem, 136, rfl⟩
abbrev cc3_stg10_1 : Ref sig .tc := ⟨.vmem, 137, rfl⟩
abbrev cc3_stg11_0 : Ref sig .tc := ⟨.vmem, 138, rfl⟩
abbrev cc3_stg12_0 : Ref sig .tc := ⟨.vmem, 139, rfl⟩
abbrev cc3_stg13_0 : Ref sig .tc := ⟨.vmem, 140, rfl⟩
abbrev cc3_stg14_0 : Ref sig .tc := ⟨.vmem, 141, rfl⟩
abbrev cc3_stg15_0 : Ref sig .tc := ⟨.vmem, 142, rfl⟩
abbrev cc3_stg16_0 : Ref sig .tc := ⟨.vmem, 143, rfl⟩
abbrev cc3_stg17_0 : Ref sig .tc := ⟨.vmem, 144, rfl⟩
abbrev cc3_stg18_0 : Ref sig .tc := ⟨.vmem, 145, rfl⟩
abbrev cc3_stg19_0 : Ref sig .tc := ⟨.vmem, 146, rfl⟩
abbrev cc3_stg20_0 : Ref sig .tc := ⟨.vmem, 147, rfl⟩
abbrev cc3_stg21_0 : Ref sig .tc := ⟨.vmem, 148, rfl⟩
abbrev cc3_stg22_0 : Ref sig .tc := ⟨.vmem, 149, rfl⟩
abbrev cc3_stg23_0 : Ref sig .tc := ⟨.vmem, 150, rfl⟩
abbrev cc3_stg24_0 : Ref sig .tc := ⟨.vmem, 151, rfl⟩
abbrev cc3_stg25_0 : Ref sig .tc := ⟨.vmem, 152, rfl⟩
abbrev cc3_stg25_1 : Ref sig .tc := ⟨.vmem, 153, rfl⟩
abbrev cc3_stg26_0 : Ref sig .tc := ⟨.vmem, 154, rfl⟩
abbrev cc3_stg26_1 : Ref sig .tc := ⟨.vmem, 155, rfl⟩
abbrev cc3_stg27_0 : Ref sig .tc := ⟨.vmem, 156, rfl⟩
abbrev cc3_stg27_1 : Ref sig .tc := ⟨.vmem, 157, rfl⟩
abbrev cc4_stg0_0 : Ref sig .tc := ⟨.vmem, 158, rfl⟩
abbrev cc4_stg0_1 : Ref sig .tc := ⟨.vmem, 159, rfl⟩
abbrev cc4_stg1_0 : Ref sig .tc := ⟨.vmem, 160, rfl⟩
abbrev cc4_stg1_1 : Ref sig .tc := ⟨.vmem, 161, rfl⟩
abbrev cc4_stg2_0 : Ref sig .tc := ⟨.vmem, 162, rfl⟩
abbrev cc4_stg2_1 : Ref sig .tc := ⟨.vmem, 163, rfl⟩
abbrev cc4_stg3_0 : Ref sig .tc := ⟨.vmem, 164, rfl⟩
abbrev cc4_stg3_1 : Ref sig .tc := ⟨.vmem, 165, rfl⟩
abbrev cc4_stg4_0 : Ref sig .tc := ⟨.vmem, 166, rfl⟩
abbrev cc4_stg4_1 : Ref sig .tc := ⟨.vmem, 167, rfl⟩
abbrev cc4_stg5_0 : Ref sig .tc := ⟨.vmem, 168, rfl⟩
abbrev cc4_stg5_1 : Ref sig .tc := ⟨.vmem, 169, rfl⟩
abbrev cc4_stg6_0 : Ref sig .tc := ⟨.vmem, 170, rfl⟩
abbrev cc4_stg6_1 : Ref sig .tc := ⟨.vmem, 171, rfl⟩
abbrev cc4_stg7_0 : Ref sig .tc := ⟨.vmem, 172, rfl⟩
abbrev cc4_stg7_1 : Ref sig .tc := ⟨.vmem, 173, rfl⟩
abbrev cc4_stg8_0 : Ref sig .tc := ⟨.vmem, 174, rfl⟩
abbrev cc4_stg8_1 : Ref sig .tc := ⟨.vmem, 175, rfl⟩
abbrev cc4_stg9_0 : Ref sig .tc := ⟨.vmem, 176, rfl⟩
abbrev cc4_stg9_1 : Ref sig .tc := ⟨.vmem, 177, rfl⟩
abbrev cc4_stg10_0 : Ref sig .tc := ⟨.vmem, 178, rfl⟩
abbrev cc4_stg10_1 : Ref sig .tc := ⟨.vmem, 179, rfl⟩
abbrev cc4_stg11_0 : Ref sig .tc := ⟨.vmem, 180, rfl⟩
abbrev cc4_stg12_0 : Ref sig .tc := ⟨.vmem, 181, rfl⟩
abbrev cc4_stg13_0 : Ref sig .tc := ⟨.vmem, 182, rfl⟩
abbrev cc4_stg14_0 : Ref sig .tc := ⟨.vmem, 183, rfl⟩
abbrev cc4_stg15_0 : Ref sig .tc := ⟨.vmem, 184, rfl⟩
abbrev cc4_stg16_0 : Ref sig .tc := ⟨.vmem, 185, rfl⟩
abbrev cc4_stg17_0 : Ref sig .tc := ⟨.vmem, 186, rfl⟩
abbrev cc4_stg18_0 : Ref sig .tc := ⟨.vmem, 187, rfl⟩
abbrev cc4_stg19_0 : Ref sig .tc := ⟨.vmem, 188, rfl⟩
abbrev cc4_stg20_0 : Ref sig .tc := ⟨.vmem, 189, rfl⟩
abbrev cc4_stg21_0 : Ref sig .tc := ⟨.vmem, 190, rfl⟩
abbrev cc4_stg22_0 : Ref sig .tc := ⟨.vmem, 191, rfl⟩
abbrev cc4_stg23_0 : Ref sig .tc := ⟨.vmem, 192, rfl⟩
abbrev cc4_stg24_0 : Ref sig .tc := ⟨.vmem, 193, rfl⟩
abbrev cc4_stg25_0 : Ref sig .tc := ⟨.vmem, 194, rfl⟩
abbrev cc4_stg25_1 : Ref sig .tc := ⟨.vmem, 195, rfl⟩
abbrev cc4_stg26_0 : Ref sig .tc := ⟨.vmem, 196, rfl⟩
abbrev cc4_stg26_1 : Ref sig .tc := ⟨.vmem, 197, rfl⟩
abbrev cc4_stg27_0 : Ref sig .tc := ⟨.vmem, 198, rfl⟩
abbrev cc4_stg27_1 : Ref sig .tc := ⟨.vmem, 199, rfl⟩
abbrev cc5_stg0_0 : Ref sig .tc := ⟨.vmem, 200, rfl⟩
abbrev cc5_stg1_0 : Ref sig .tc := ⟨.vmem, 201, rfl⟩
abbrev cc5_stg2_0 : Ref sig .tc := ⟨.vmem, 202, rfl⟩
abbrev cc5_stg3_0 : Ref sig .tc := ⟨.vmem, 203, rfl⟩
abbrev cc5_stg4_0 : Ref sig .tc := ⟨.vmem, 204, rfl⟩
abbrev cc5_stg5_0 : Ref sig .tc := ⟨.vmem, 205, rfl⟩
abbrev cc5_stg6_0 : Ref sig .tc := ⟨.vmem, 206, rfl⟩
abbrev cc5_stg7_0 : Ref sig .tc := ⟨.vmem, 207, rfl⟩
abbrev cc5_stg8_0 : Ref sig .tc := ⟨.vmem, 208, rfl⟩
abbrev cc5_stg9_0 : Ref sig .tc := ⟨.vmem, 209, rfl⟩
abbrev cc5_stg10_0 : Ref sig .tc := ⟨.vmem, 210, rfl⟩
abbrev cc5_stg11_0 : Ref sig .tc := ⟨.vmem, 211, rfl⟩
abbrev cc5_stg12_0 : Ref sig .tc := ⟨.vmem, 212, rfl⟩
abbrev cc5_stg13_0 : Ref sig .tc := ⟨.vmem, 213, rfl⟩
abbrev cc5_stg14_0 : Ref sig .tc := ⟨.vmem, 214, rfl⟩
abbrev cc5_stg15_0 : Ref sig .tc := ⟨.vmem, 215, rfl⟩
abbrev cc5_stg16_0 : Ref sig .tc := ⟨.vmem, 216, rfl⟩
abbrev cc5_stg17_0 : Ref sig .tc := ⟨.vmem, 217, rfl⟩
abbrev cc5_stg18_0 : Ref sig .tc := ⟨.vmem, 218, rfl⟩
abbrev cc5_stg19_0 : Ref sig .tc := ⟨.vmem, 219, rfl⟩
abbrev cc5_stg20_0 : Ref sig .tc := ⟨.vmem, 220, rfl⟩
abbrev cc5_stg21_0 : Ref sig .tc := ⟨.vmem, 221, rfl⟩
abbrev cc5_stg22_0 : Ref sig .tc := ⟨.vmem, 222, rfl⟩
abbrev cc5_stg23_0 : Ref sig .tc := ⟨.vmem, 223, rfl⟩
abbrev cc5_stg24_0 : Ref sig .tc := ⟨.vmem, 224, rfl⟩
abbrev cc5_stg25_0 : Ref sig .tc := ⟨.vmem, 225, rfl⟩
abbrev cc5_stg26_0 : Ref sig .tc := ⟨.vmem, 226, rfl⟩
abbrev cc5_stg27_0 : Ref sig .tc := ⟨.vmem, 227, rfl⟩
abbrev cc6_stg0_0 : Ref sig .tc := ⟨.vmem, 228, rfl⟩
abbrev cc6_stg1_0 : Ref sig .tc := ⟨.vmem, 229, rfl⟩
abbrev cc6_stg2_0 : Ref sig .tc := ⟨.vmem, 230, rfl⟩
abbrev cc6_stg3_0 : Ref sig .tc := ⟨.vmem, 231, rfl⟩
abbrev cc6_stg4_0 : Ref sig .tc := ⟨.vmem, 232, rfl⟩
abbrev cc6_stg5_0 : Ref sig .tc := ⟨.vmem, 233, rfl⟩
abbrev cc6_stg6_0 : Ref sig .tc := ⟨.vmem, 234, rfl⟩
abbrev cc6_stg7_0 : Ref sig .tc := ⟨.vmem, 235, rfl⟩
abbrev cc6_stg8_0 : Ref sig .tc := ⟨.vmem, 236, rfl⟩
abbrev cc6_stg9_0 : Ref sig .tc := ⟨.vmem, 237, rfl⟩
abbrev cc6_stg10_0 : Ref sig .tc := ⟨.vmem, 238, rfl⟩
abbrev cc6_stg11_0 : Ref sig .tc := ⟨.vmem, 239, rfl⟩
abbrev cc6_stg12_0 : Ref sig .tc := ⟨.vmem, 240, rfl⟩
abbrev cc6_stg13_0 : Ref sig .tc := ⟨.vmem, 241, rfl⟩
abbrev cc6_stg14_0 : Ref sig .tc := ⟨.vmem, 242, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc1_sem0_0 : DmaSem sig := 32
abbrev cc1_sem0_1 : DmaSem sig := 33
abbrev cc1_sem1_0 : DmaSem sig := 34
abbrev cc1_sem1_1 : DmaSem sig := 35
abbrev cc1_sem2_0 : DmaSem sig := 36
abbrev cc1_sem2_1 : DmaSem sig := 37
abbrev cc1_sem3_0 : DmaSem sig := 38
abbrev cc1_sem3_1 : DmaSem sig := 39
abbrev cc1_sem4_0 : DmaSem sig := 40
abbrev cc1_sem4_1 : DmaSem sig := 41
abbrev cc1_sem5_0 : DmaSem sig := 42
abbrev cc1_sem5_1 : DmaSem sig := 43
abbrev cc1_sem6_0 : DmaSem sig := 44
abbrev cc1_sem6_1 : DmaSem sig := 45
abbrev cc1_sem7_0 : DmaSem sig := 46
abbrev cc1_sem7_1 : DmaSem sig := 47
abbrev cc1_sem8_0 : DmaSem sig := 48
abbrev cc1_sem8_1 : DmaSem sig := 49
abbrev cc1_sem9_0 : DmaSem sig := 50
abbrev cc1_sem9_1 : DmaSem sig := 51
abbrev cc1_sem10_0 : DmaSem sig := 52
abbrev cc1_sem10_1 : DmaSem sig := 53
abbrev cc1_sem11_0 : DmaSem sig := 54
abbrev cc1_sem12_0 : DmaSem sig := 55
abbrev cc1_sem13_0 : DmaSem sig := 56
abbrev cc1_sem14_0 : DmaSem sig := 57
abbrev cc1_sem15_0 : DmaSem sig := 58
abbrev cc1_sem16_0 : DmaSem sig := 59
abbrev cc1_sem17_0 : DmaSem sig := 60
abbrev cc1_sem18_0 : DmaSem sig := 61
abbrev cc1_sem19_0 : DmaSem sig := 62
abbrev cc1_sem20_0 : DmaSem sig := 63
abbrev cc1_sem21_0 : DmaSem sig := 64
abbrev cc1_sem22_0 : DmaSem sig := 65
abbrev cc1_sem23_0 : DmaSem sig := 66
abbrev cc1_sem24_0 : DmaSem sig := 67
abbrev cc1_sem25_0 : DmaSem sig := 68
abbrev cc1_sem25_1 : DmaSem sig := 69
abbrev cc1_sem26_0 : DmaSem sig := 70
abbrev cc1_sem26_1 : DmaSem sig := 71
abbrev cc1_sem27_0 : DmaSem sig := 72
abbrev cc1_sem27_1 : DmaSem sig := 73
abbrev cc2_sem0_0 : DmaSem sig := 74
abbrev cc2_sem0_1 : DmaSem sig := 75
abbrev cc2_sem1_0 : DmaSem sig := 76
abbrev cc2_sem1_1 : DmaSem sig := 77
abbrev cc2_sem2_0 : DmaSem sig := 78
abbrev cc2_sem2_1 : DmaSem sig := 79
abbrev cc2_sem3_0 : DmaSem sig := 80
abbrev cc2_sem3_1 : DmaSem sig := 81
abbrev cc2_sem4_0 : DmaSem sig := 82
abbrev cc2_sem4_1 : DmaSem sig := 83
abbrev cc2_sem5_0 : DmaSem sig := 84
abbrev cc2_sem5_1 : DmaSem sig := 85
abbrev cc2_sem6_0 : DmaSem sig := 86
abbrev cc2_sem6_1 : DmaSem sig := 87
abbrev cc2_sem7_0 : DmaSem sig := 88
abbrev cc2_sem7_1 : DmaSem sig := 89
abbrev cc2_sem8_0 : DmaSem sig := 90
abbrev cc2_sem8_1 : DmaSem sig := 91
abbrev cc2_sem9_0 : DmaSem sig := 92
abbrev cc2_sem9_1 : DmaSem sig := 93
abbrev cc2_sem10_0 : DmaSem sig := 94
abbrev cc2_sem10_1 : DmaSem sig := 95
abbrev cc2_sem11_0 : DmaSem sig := 96
abbrev cc2_sem12_0 : DmaSem sig := 97
abbrev cc2_sem13_0 : DmaSem sig := 98
abbrev cc2_sem14_0 : DmaSem sig := 99
abbrev cc2_sem15_0 : DmaSem sig := 100
abbrev cc2_sem16_0 : DmaSem sig := 101
abbrev cc2_sem17_0 : DmaSem sig := 102
abbrev cc2_sem18_0 : DmaSem sig := 103
abbrev cc2_sem19_0 : DmaSem sig := 104
abbrev cc2_sem20_0 : DmaSem sig := 105
abbrev cc2_sem21_0 : DmaSem sig := 106
abbrev cc2_sem22_0 : DmaSem sig := 107
abbrev cc2_sem23_0 : DmaSem sig := 108
abbrev cc2_sem24_0 : DmaSem sig := 109
abbrev cc2_sem25_0 : DmaSem sig := 110
abbrev cc2_sem25_1 : DmaSem sig := 111
abbrev cc2_sem26_0 : DmaSem sig := 112
abbrev cc2_sem26_1 : DmaSem sig := 113
abbrev cc2_sem27_0 : DmaSem sig := 114
abbrev cc2_sem27_1 : DmaSem sig := 115
abbrev cc3_sem0_0 : DmaSem sig := 116
abbrev cc3_sem0_1 : DmaSem sig := 117
abbrev cc3_sem1_0 : DmaSem sig := 118
abbrev cc3_sem1_1 : DmaSem sig := 119
abbrev cc3_sem2_0 : DmaSem sig := 120
abbrev cc3_sem2_1 : DmaSem sig := 121
abbrev cc3_sem3_0 : DmaSem sig := 122
abbrev cc3_sem3_1 : DmaSem sig := 123
abbrev cc3_sem4_0 : DmaSem sig := 124
abbrev cc3_sem4_1 : DmaSem sig := 125
abbrev cc3_sem5_0 : DmaSem sig := 126
abbrev cc3_sem5_1 : DmaSem sig := 127
abbrev cc3_sem6_0 : DmaSem sig := 128
abbrev cc3_sem6_1 : DmaSem sig := 129
abbrev cc3_sem7_0 : DmaSem sig := 130
abbrev cc3_sem7_1 : DmaSem sig := 131
abbrev cc3_sem8_0 : DmaSem sig := 132
abbrev cc3_sem8_1 : DmaSem sig := 133
abbrev cc3_sem9_0 : DmaSem sig := 134
abbrev cc3_sem9_1 : DmaSem sig := 135
abbrev cc3_sem10_0 : DmaSem sig := 136
abbrev cc3_sem10_1 : DmaSem sig := 137
abbrev cc3_sem11_0 : DmaSem sig := 138
abbrev cc3_sem12_0 : DmaSem sig := 139
abbrev cc3_sem13_0 : DmaSem sig := 140
abbrev cc3_sem14_0 : DmaSem sig := 141
abbrev cc3_sem15_0 : DmaSem sig := 142
abbrev cc3_sem16_0 : DmaSem sig := 143
abbrev cc3_sem17_0 : DmaSem sig := 144
abbrev cc3_sem18_0 : DmaSem sig := 145
abbrev cc3_sem19_0 : DmaSem sig := 146
abbrev cc3_sem20_0 : DmaSem sig := 147
abbrev cc3_sem21_0 : DmaSem sig := 148
abbrev cc3_sem22_0 : DmaSem sig := 149
abbrev cc3_sem23_0 : DmaSem sig := 150
abbrev cc3_sem24_0 : DmaSem sig := 151
abbrev cc3_sem25_0 : DmaSem sig := 152
abbrev cc3_sem25_1 : DmaSem sig := 153
abbrev cc3_sem26_0 : DmaSem sig := 154
abbrev cc3_sem26_1 : DmaSem sig := 155
abbrev cc3_sem27_0 : DmaSem sig := 156
abbrev cc3_sem27_1 : DmaSem sig := 157
abbrev cc4_sem0_0 : DmaSem sig := 158
abbrev cc4_sem0_1 : DmaSem sig := 159
abbrev cc4_sem1_0 : DmaSem sig := 160
abbrev cc4_sem1_1 : DmaSem sig := 161
abbrev cc4_sem2_0 : DmaSem sig := 162
abbrev cc4_sem2_1 : DmaSem sig := 163
abbrev cc4_sem3_0 : DmaSem sig := 164
abbrev cc4_sem3_1 : DmaSem sig := 165
abbrev cc4_sem4_0 : DmaSem sig := 166
abbrev cc4_sem4_1 : DmaSem sig := 167
abbrev cc4_sem5_0 : DmaSem sig := 168
abbrev cc4_sem5_1 : DmaSem sig := 169
abbrev cc4_sem6_0 : DmaSem sig := 170
abbrev cc4_sem6_1 : DmaSem sig := 171
abbrev cc4_sem7_0 : DmaSem sig := 172
abbrev cc4_sem7_1 : DmaSem sig := 173
abbrev cc4_sem8_0 : DmaSem sig := 174
abbrev cc4_sem8_1 : DmaSem sig := 175
abbrev cc4_sem9_0 : DmaSem sig := 176
abbrev cc4_sem9_1 : DmaSem sig := 177
abbrev cc4_sem10_0 : DmaSem sig := 178
abbrev cc4_sem10_1 : DmaSem sig := 179
abbrev cc4_sem11_0 : DmaSem sig := 180
abbrev cc4_sem12_0 : DmaSem sig := 181
abbrev cc4_sem13_0 : DmaSem sig := 182
abbrev cc4_sem14_0 : DmaSem sig := 183
abbrev cc4_sem15_0 : DmaSem sig := 184
abbrev cc4_sem16_0 : DmaSem sig := 185
abbrev cc4_sem17_0 : DmaSem sig := 186
abbrev cc4_sem18_0 : DmaSem sig := 187
abbrev cc4_sem19_0 : DmaSem sig := 188
abbrev cc4_sem20_0 : DmaSem sig := 189
abbrev cc4_sem21_0 : DmaSem sig := 190
abbrev cc4_sem22_0 : DmaSem sig := 191
abbrev cc4_sem23_0 : DmaSem sig := 192
abbrev cc4_sem24_0 : DmaSem sig := 193
abbrev cc4_sem25_0 : DmaSem sig := 194
abbrev cc4_sem25_1 : DmaSem sig := 195
abbrev cc4_sem26_0 : DmaSem sig := 196
abbrev cc4_sem26_1 : DmaSem sig := 197
abbrev cc4_sem27_0 : DmaSem sig := 198
abbrev cc4_sem27_1 : DmaSem sig := 199
abbrev cc5_sem0_0 : DmaSem sig := 200
abbrev cc5_sem1_0 : DmaSem sig := 201
abbrev cc5_sem2_0 : DmaSem sig := 202
abbrev cc5_sem3_0 : DmaSem sig := 203
abbrev cc5_sem4_0 : DmaSem sig := 204
abbrev cc5_sem5_0 : DmaSem sig := 205
abbrev cc5_sem6_0 : DmaSem sig := 206
abbrev cc5_sem7_0 : DmaSem sig := 207
abbrev cc5_sem8_0 : DmaSem sig := 208
abbrev cc5_sem9_0 : DmaSem sig := 209
abbrev cc5_sem10_0 : DmaSem sig := 210
abbrev cc5_sem11_0 : DmaSem sig := 211
abbrev cc5_sem12_0 : DmaSem sig := 212
abbrev cc5_sem13_0 : DmaSem sig := 213
abbrev cc5_sem14_0 : DmaSem sig := 214
abbrev cc5_sem15_0 : DmaSem sig := 215
abbrev cc5_sem16_0 : DmaSem sig := 216
abbrev cc5_sem17_0 : DmaSem sig := 217
abbrev cc5_sem18_0 : DmaSem sig := 218
abbrev cc5_sem19_0 : DmaSem sig := 219
abbrev cc5_sem20_0 : DmaSem sig := 220
abbrev cc5_sem21_0 : DmaSem sig := 221
abbrev cc5_sem22_0 : DmaSem sig := 222
abbrev cc5_sem23_0 : DmaSem sig := 223
abbrev cc5_sem24_0 : DmaSem sig := 224
abbrev cc5_sem25_0 : DmaSem sig := 225
abbrev cc5_sem26_0 : DmaSem sig := 226
abbrev cc5_sem27_0 : DmaSem sig := 227
abbrev cc6_sem0_0 : DmaSem sig := 228
abbrev cc6_sem1_0 : DmaSem sig := 229
abbrev cc6_sem2_0 : DmaSem sig := 230
abbrev cc6_sem3_0 : DmaSem sig := 231
abbrev cc6_sem4_0 : DmaSem sig := 232
abbrev cc6_sem5_0 : DmaSem sig := 233
abbrev cc6_sem6_0 : DmaSem sig := 234
abbrev cc6_sem7_0 : DmaSem sig := 235
abbrev cc6_sem8_0 : DmaSem sig := 236
abbrev cc6_sem9_0 : DmaSem sig := 237
abbrev cc6_sem10_0 : DmaSem sig := 238
abbrev cc6_sem11_0 : DmaSem sig := 239
abbrev cc6_sem12_0 : DmaSem sig := 240
abbrev cc6_sem13_0 : DmaSem sig := 241
abbrev cc6_sem14_0 : DmaSem sig := 242

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.addi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.addi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.addi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.addi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.addi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.addi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1000x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1408x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1024x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c15_i32 : BitVec 32 := 15#32
  let v0 : BitVec 32 := Scalar.addi c15_i32 arg0
  let c0_i32 : BitVec 32 := 0#32
  let c0_i32_0 : BitVec 32 := 0#32
  ![v0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_26 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_27 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1024x2x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1024x2x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x2x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S32x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S32x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1000x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S256x512 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1408x512 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x512 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S512x256 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x256 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S256x128 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x128 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 2 → Memref sig .tc .vmem S1024x128 .f32 := fun | 0 => Memref.whole cc1_stg25_0 | 1 => Memref.whole cc1_stg25_1 | ⟨_ + 2, h⟩ => absurd h (Nat.not_lt.2 (Nat.le_add_left _ _))
abbrev sem1_25 : Fin 2 → DmaSem sig := fun | 0 => cc1_sem25_0 | 1 => cc1_sem25_1 | ⟨_ + 2, h⟩ => absurd h (Nat.not_lt.2 (Nat.le_add_left _ _))
abbrev reads1_25 : Fin grid1.rank → Bool := ![true]

abbrev stage1_26 : Fin 2 → Memref sig .tc .vmem S1024x128 .f32 := fun | 0 => Memref.whole cc1_stg26_0 | 1 => Memref.whole cc1_stg26_1 | ⟨_ + 2, h⟩ => absurd h (Nat.not_lt.2 (Nat.le_add_left _ _))
abbrev sem1_26 : Fin 2 → DmaSem sig := fun | 0 => cc1_sem26_0 | 1 => cc1_sem26_1 | ⟨_ + 2, h⟩ => absurd h (Nat.not_lt.2 (Nat.le_add_left _ _))
abbrev reads1_26 : Fin grid1.rank → Bool := ![true]

abbrev stage1_27 : Fin 2 → Memref sig .tc .vmem S1024x128 .f32 := fun | 0 => Memref.whole cc1_stg27_0 | 1 => Memref.whole cc1_stg27_1 | ⟨_ + 2, h⟩ => absurd h (Nat.not_lt.2 (Nat.le_add_left _ _))
abbrev sem1_27 : Fin 2 → DmaSem sig := fun | 0 => cc1_sem27_0 | 1 => cc1_sem27_1 | ⟨_ + 2, h⟩ => absurd h (Nat.not_lt.2 (Nat.le_add_left _ _))
abbrev reads1_27 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc2_transform_4 (i : grid2.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc2_transform_5 (i : grid2.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc2_transform_6 (i : grid2.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc2_transform_7 (i : grid2.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![v0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_21 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_22 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_23 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_24 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_25 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_26 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_27 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1024x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1024x2x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1024x2x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1024x2x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 1 → Memref sig .tc .vmem S32x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S32x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1000x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S256x512 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x128 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S1408x512 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 1 → Memref sig .tc .vmem S1x512 .f32 := fun | 0 => Memref.whole cc2_stg20_0 | ⟨_ + 1, h⟩ => absurd h (Nat.not_lt.2 (Nat.le_add_left _ _))
abbrev sem2_20 : Fin 1 → DmaSem sig := fun | 0 => cc2_sem20_0 | ⟨_ + 1, h⟩ => absurd h (Nat.not_lt.2 (Nat.le_add_left _ _))
abbrev reads2_20 : Fin grid2.rank → Bool := ![false]

abbrev stage2_21 : Fin 1 → Memref sig .tc .vmem S512x256 .f32 := fun | 0 => Memref.whole cc2_stg21_0 | ⟨_ + 1, h⟩ => absurd h (Nat.not_lt.2 (Nat.le_add_left _ _))
abbrev sem2_21 : Fin 1 → DmaSem sig := fun | 0 => cc2_sem21_0 | ⟨_ + 1, h⟩ => absurd h (Nat.not_lt.2 (Nat.le_add_left _ _))
abbrev reads2_21 : Fin grid2.rank → Bool := ![false]

abbrev stage2_22 : Fin 1 → Memref sig .tc .vmem S1x256 .f32 := fun | 0 => Memref.whole cc2_stg22_0 | ⟨_ + 1, h⟩ => absurd h (Nat.not_lt.2 (Nat.le_add_left _ _))
abbrev sem2_22 : Fin 1 → DmaSem sig := fun | 0 => cc2_sem22_0 | ⟨_ + 1, h⟩ => absurd h (Nat.not_lt.2 (Nat.le_add_left _ _))
abbrev reads2_22 : Fin grid2.rank → Bool := ![false]

abbrev stage2_23 : Fin 1 → Memref sig .tc .vmem S256x128 .f32 := fun | 0 => Memref.whole cc2_stg23_0 | ⟨_ + 1, h⟩ => absurd h (Nat.not_lt.2 (Nat.le_add_left _ _))
abbrev sem2_23 : Fin 1 → DmaSem sig := fun | 0 => cc2_sem23_0 | ⟨_ + 1, h⟩ => absurd h (Nat.not_lt.2 (Nat.le_add_left _ _))
abbrev reads2_23 : Fin grid2.rank → Bool := ![false]

abbrev stage2_24 : Fin 1 → Memref sig .tc .vmem S1x128 .f32 := fun | 0 => Memref.whole cc2_stg24_0 | ⟨_ + 1, h⟩ => absurd h (Nat.not_lt.2 (Nat.le_add_left _ _))
abbrev sem2_24 : Fin 1 → DmaSem sig := fun | 0 => cc2_sem24_0 | ⟨_ + 1, h⟩ => absurd h (Nat.not_lt.2 (Nat.le_add_left _ _))
abbrev reads2_24 : Fin grid2.rank → Bool := ![false]

abbrev stage2_25 : Fin 2 → Memref sig .tc .vmem S1024x128 .f32 := fun | 0 => Memref.whole cc2_stg25_0 | 1 => Memref.whole cc2_stg25_1 | ⟨_ + 2, h⟩ => absurd h (Nat.not_lt.2 (Nat.le_add_left _ _))
abbrev sem2_25 : Fin 2 → DmaSem sig := fun | 0 => cc2_sem25_0 | 1 => cc2_sem25_1 | ⟨_ + 2, h⟩ => absurd h (Nat.not_lt.2 (Nat.le_add_left _ _))
abbrev reads2_25 : Fin grid2.rank → Bool := ![true]

abbrev stage2_26 : Fin 2 → Memref sig .tc .vmem S1024x128 .f32 := fun | 0 => Memref.whole cc2_stg26_0 | 1 => Memref.whole cc2_stg26_1 | ⟨_ + 2, h⟩ => absurd h (Nat.not_lt.2 (Nat.le_add_left _ _))
abbrev sem2_26 : Fin 2 → DmaSem sig := fun | 0 => cc2_sem26_0 | 1 => cc2_sem26_1 | ⟨_ + 2, h⟩ => absurd h (Nat.not_lt.2 (Nat.le_add_left _ _))
abbrev reads2_26 : Fin grid2.rank → Bool := ![true]

abbrev stage2_27 : Fin 2 → Memref sig .tc .vmem S1024x128 .f32 := fun | 0 => Memref.whole cc2_stg27_0 | 1 => Memref.whole cc2_stg27_1 | ⟨_ + 2, h⟩ => absurd h (Nat.not_lt.2 (Nat.le_add_left _ _))
abbrev sem2_27 : Fin 2 → DmaSem sig := fun | 0 => cc2_sem27_0 | 1 => cc2_sem27_1 | ⟨_ + 2, h⟩ => absurd h (Nat.not_lt.2 (Nat.le_add_left _ _))
abbrev reads2_27 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc3_transform_4 (i : grid3.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc3_transform_5 (i : grid3.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc3_transform_6 (i : grid3.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc3_transform_7 (i : grid3.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_21 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_22 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_23 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_24 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_25 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_26 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_27 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1024x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1024x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1024x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1024x2x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1024x2x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1024x2x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 1 → Memref sig .tc .vmem S32x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S32x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1000x128 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1x128 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S256x512 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S1x128 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S1408x512 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev stage3_20 : Fin 1 → Memref sig .tc .vmem S1x512 .f32 := fun | 0 => Memref.whole cc3_stg20_0 | ⟨_ + 1, h⟩ => absurd h (Nat.not_lt.2 (Nat.le_add_left _ _))
abbrev sem3_20 : Fin 1 → DmaSem sig := fun | 0 => cc3_sem20_0 | ⟨_ + 1, h⟩ => absurd h (Nat.not_lt.2 (Nat.le_add_left _ _))
abbrev reads3_20 : Fin grid3.rank → Bool := ![false]

abbrev stage3_21 : Fin 1 → Memref sig .tc .vmem S512x256 .f32 := fun | 0 => Memref.whole cc3_stg21_0 | ⟨_ + 1, h⟩ => absurd h (Nat.not_lt.2 (Nat.le_add_left _ _))
abbrev sem3_21 : Fin 1 → DmaSem sig := fun | 0 => cc3_sem21_0 | ⟨_ + 1, h⟩ => absurd h (Nat.not_lt.2 (Nat.le_add_left _ _))
abbrev reads3_21 : Fin grid3.rank → Bool := ![false]

abbrev stage3_22 : Fin 1 → Memref sig .tc .vmem S1x256 .f32 := fun | 0 => Memref.whole cc3_stg22_0 | ⟨_ + 1, h⟩ => absurd h (Nat.not_lt.2 (Nat.le_add_left _ _))
abbrev sem3_22 : Fin 1 → DmaSem sig := fun | 0 => cc3_sem22_0 | ⟨_ + 1, h⟩ => absurd h (Nat.not_lt.2 (Nat.le_add_left _ _))
abbrev reads3_22 : Fin grid3.rank → Bool := ![false]

abbrev stage3_23 : Fin 1 → Memref sig .tc .vmem S256x128 .f32 := fun | 0 => Memref.whole cc3_stg23_0 | ⟨_ + 1, h⟩ => absurd h (Nat.not_lt.2 (Nat.le_add_left _ _))
abbrev sem3_23 : Fin 1 → DmaSem sig := fun | 0 => cc3_sem23_0 | ⟨_ + 1, h⟩ => absurd h (Nat.not_lt.2 (Nat.le_add_left _ _))
abbrev reads3_23 : Fin grid3.rank → Bool := ![false]

abbrev stage3_24 : Fin 1 → Memref sig .tc .vmem S1x128 .f32 := fun | 0 => Memref.whole cc3_stg24_0 | ⟨_ + 1, h⟩ => absurd h (Nat.not_lt.2 (Nat.le_add_left _ _))
abbrev sem3_24 : Fin 1 → DmaSem sig := fun | 0 => cc3_sem24_0 | ⟨_ + 1, h⟩ => absurd h (Nat.not_lt.2 (Nat.le_add_left _ _))
abbrev reads3_24 : Fin grid3.rank → Bool := ![false]

abbrev stage3_25 : Fin 2 → Memref sig .tc .vmem S1024x128 .f32 := fun | 0 => Memref.whole cc3_stg25_0 | 1 => Memref.whole cc3_stg25_1 | ⟨_ + 2, h⟩ => absurd h (Nat.not_lt.2 (Nat.le_add_left _ _))
abbrev sem3_25 : Fin 2 → DmaSem sig := fun | 0 => cc3_sem25_0 | 1 => cc3_sem25_1 | ⟨_ + 2, h⟩ => absurd h (Nat.not_lt.2 (Nat.le_add_left _ _))
abbrev reads3_25 : Fin grid3.rank → Bool := ![true]

abbrev stage3_26 : Fin 2 → Memref sig .tc .vmem S1024x128 .f32 := fun | 0 => Memref.whole cc3_stg26_0 | 1 => Memref.whole cc3_stg26_1 | ⟨_ + 2, h⟩ => absurd h (Nat.not_lt.2 (Nat.le_add_left _ _))
abbrev sem3_26 : Fin 2 → DmaSem sig := fun | 0 => cc3_sem26_0 | 1 => cc3_sem26_1 | ⟨_ + 2, h⟩ => absurd h (Nat.not_lt.2 (Nat.le_add_left _ _))
abbrev reads3_26 : Fin grid3.rank → Bool := ![true]

abbrev stage3_27 : Fin 2 → Memref sig .tc .vmem S1024x128 .f32 := fun | 0 => Memref.whole cc3_stg27_0 | 1 => Memref.whole cc3_stg27_1 | ⟨_ + 2, h⟩ => absurd h (Nat.not_lt.2 (Nat.le_add_left _ _))
abbrev sem3_27 : Fin 2 → DmaSem sig := fun | 0 => cc3_sem27_0 | 1 => cc3_sem27_1 | ⟨_ + 2, h⟩ => absurd h (Nat.not_lt.2 (Nat.le_add_left _ _))
abbrev reads3_27 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc4_transform_2 (i : grid4.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc4_transform_3 (i : grid4.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc4_transform_4 (i : grid4.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc4_transform_5 (i : grid4.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc4_transform_6 (i : grid4.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc4_transform_7 (i : grid4.Coords) : Fin 2 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_10 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_17 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_18 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_19 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_20 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_21 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_22 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_23 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_24 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_25 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_26 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_27 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x1000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1024x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1024x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1024x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1024x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1024x2x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1024x2x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S1024x2x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev stage4_11 : Fin 1 → Memref sig .tc .vmem S32x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S32x128 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x128 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S1000x128 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

abbrev stage4_16 : Fin 1 → Memref sig .tc .vmem S1x128 .f32 := fun | 0 => Memref.whole cc4_stg16_0 | ⟨_ + 1, h⟩ => absurd h (Nat.not_lt.2 (Nat.le_add_left _ _))
abbrev sem4_16 : Fin 1 → DmaSem sig := fun | 0 => cc4_sem16_0 | ⟨_ + 1, h⟩ => absurd h (Nat.not_lt.2 (Nat.le_add_left _ _))
abbrev reads4_16 : Fin grid4.rank → Bool := ![false]

abbrev stage4_17 : Fin 1 → Memref sig .tc .vmem S256x512 .f32 := fun | 0 => Memref.whole cc4_stg17_0 | ⟨_ + 1, h⟩ => absurd h (Nat.not_lt.2 (Nat.le_add_left _ _))
abbrev sem4_17 : Fin 1 → DmaSem sig := fun | 0 => cc4_sem17_0 | ⟨_ + 1, h⟩ => absurd h (Nat.not_lt.2 (Nat.le_add_left _ _))
abbrev reads4_17 : Fin grid4.rank → Bool := ![false]

abbrev stage4_18 : Fin 1 → Memref sig .tc .vmem S1x128 .f32 := fun | 0 => Memref.whole cc4_stg18_0 | ⟨_ + 1, h⟩ => absurd h (Nat.not_lt.2 (Nat.le_add_left _ _))
abbrev sem4_18 : Fin 1 → DmaSem sig := fun | 0 => cc4_sem18_0 | ⟨_ + 1, h⟩ => absurd h (Nat.not_lt.2 (Nat.le_add_left _ _))
abbrev reads4_18 : Fin grid4.rank → Bool := ![false]

abbrev stage4_19 : Fin 1 → Memref sig .tc .vmem S1408x512 .f32 := fun | 0 => Memref.whole cc4_stg19_0 | ⟨_ + 1, h⟩ => absurd h (Nat.not_lt.2 (Nat.le_add_left _ _))
abbrev sem4_19 : Fin 1 → DmaSem sig := fun | 0 => cc4_sem19_0 | ⟨_ + 1, h⟩ => absurd h (Nat.not_lt.2 (Nat.le_add_left _ _))
abbrev reads4_19 : Fin grid4.rank → Bool := ![false]

abbrev stage4_20 : Fin 1 → Memref sig .tc .vmem S1x512 .f32 := fun | 0 => Memref.whole cc4_stg20_0 | ⟨_ + 1, h⟩ => absurd h (Nat.not_lt.2 (Nat.le_add_left _ _))
abbrev sem4_20 : Fin 1 → DmaSem sig := fun | 0 => cc4_sem20_0 | ⟨_ + 1, h⟩ => absurd h (Nat.not_lt.2 (Nat.le_add_left _ _))
abbrev reads4_20 : Fin grid4.rank → Bool := ![false]

abbrev stage4_21 : Fin 1 → Memref sig .tc .vmem S512x256 .f32 := fun | 0 => Memref.whole cc4_stg21_0 | ⟨_ + 1, h⟩ => absurd h (Nat.not_lt.2 (Nat.le_add_left _ _))
abbrev sem4_21 : Fin 1 → DmaSem sig := fun | 0 => cc4_sem21_0 | ⟨_ + 1, h⟩ => absurd h (Nat.not_lt.2 (Nat.le_add_left _ _))
abbrev reads4_21 : Fin grid4.rank → Bool := ![false]

abbrev stage4_22 : Fin 1 → Memref sig .tc .vmem S1x256 .f32 := fun | 0 => Memref.whole cc4_stg22_0 | ⟨_ + 1, h⟩ => absurd h (Nat.not_lt.2 (Nat.le_add_left _ _))
abbrev sem4_22 : Fin 1 → DmaSem sig := fun | 0 => cc4_sem22_0 | ⟨_ + 1, h⟩ => absurd h (Nat.not_lt.2 (Nat.le_add_left _ _))
abbrev reads4_22 : Fin grid4.rank → Bool := ![false]

abbrev stage4_23 : Fin 1 → Memref sig .tc .vmem S256x128 .f32 := fun | 0 => Memref.whole cc4_stg23_0 | ⟨_ + 1, h⟩ => absurd h (Nat.not_lt.2 (Nat.le_add_left _ _))
abbrev sem4_23 : Fin 1 → DmaSem sig := fun | 0 => cc4_sem23_0 | ⟨_ + 1, h⟩ => absurd h (Nat.not_lt.2 (Nat.le_add_left _ _))
abbrev reads4_23 : Fin grid4.rank → Bool := ![false]

abbrev stage4_24 : Fin 1 → Memref sig .tc .vmem S1x128 .f32 := fun | 0 => Memref.whole cc4_stg24_0 | ⟨_ + 1, h⟩ => absurd h (Nat.not_lt.2 (Nat.le_add_left _ _))
abbrev sem4_24 : Fin 1 → DmaSem sig := fun | 0 => cc4_sem24_0 | ⟨_ + 1, h⟩ => absurd h (Nat.not_lt.2 (Nat.le_add_left _ _))
abbrev reads4_24 : Fin grid4.rank → Bool := ![false]

abbrev stage4_25 : Fin 2 → Memref sig .tc .vmem S1024x128 .f32 := fun | 0 => Memref.whole cc4_stg25_0 | 1 => Memref.whole cc4_stg25_1 | ⟨_ + 2, h⟩ => absurd h (Nat.not_lt.2 (Nat.le_add_left _ _))
abbrev sem4_25 : Fin 2 → DmaSem sig := fun | 0 => cc4_sem25_0 | 1 => cc4_sem25_1 | ⟨_ + 2, h⟩ => absurd h (Nat.not_lt.2 (Nat.le_add_left _ _))
abbrev reads4_25 : Fin grid4.rank → Bool := ![true]

abbrev stage4_26 : Fin 2 → Memref sig .tc .vmem S1024x128 .f32 := fun | 0 => Memref.whole cc4_stg26_0 | 1 => Memref.whole cc4_stg26_1 | ⟨_ + 2, h⟩ => absurd h (Nat.not_lt.2 (Nat.le_add_left _ _))
abbrev sem4_26 : Fin 2 → DmaSem sig := fun | 0 => cc4_sem26_0 | 1 => cc4_sem26_1 | ⟨_ + 2, h⟩ => absurd h (Nat.not_lt.2 (Nat.le_add_left _ _))
abbrev reads4_26 : Fin grid4.rank → Bool := ![true]

abbrev stage4_27 : Fin 2 → Memref sig .tc .vmem S1024x128 .f32 := fun | 0 => Memref.whole cc4_stg27_0 | 1 => Memref.whole cc4_stg27_1 | ⟨_ + 2, h⟩ => absurd h (Nat.not_lt.2 (Nat.le_add_left _ _))
abbrev sem4_27 : Fin 2 → DmaSem sig := fun | 0 => cc4_sem27_0 | 1 => cc4_sem27_1 | ⟨_ + 2, h⟩ => absurd h (Nat.not_lt.2 (Nat.le_add_left _ _))
abbrev reads4_27 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_1 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_2 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_3 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_4 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_5 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_6 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_7 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_9 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_10 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_15 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_16 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_17 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_18 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_19 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_20 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_21 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_22 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_23 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_24 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_25 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_26 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_27 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1024x32 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1024x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1024x1000 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S1024x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S1024x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S1024x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S1024x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev stage5_7 : Fin 1 → Memref sig .tc .vmem S1024x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true]

abbrev stage5_8 : Fin 1 → Memref sig .tc .vmem S1024x2x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![true]

abbrev stage5_9 : Fin 1 → Memref sig .tc .vmem S1024x2x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![true]

abbrev stage5_10 : Fin 1 → Memref sig .tc .vmem S1024x2x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![true]

abbrev stage5_11 : Fin 1 → Memref sig .tc .vmem S32x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S32x128 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 1 → Memref sig .tc .vmem S1x128 .f32 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))
abbrev reads5_14 : Fin grid5.rank → Bool := ![false]

abbrev stage5_15 : Fin 1 → Memref sig .tc .vmem S1000x128 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

abbrev stage5_16 : Fin 1 → Memref sig .tc .vmem S1x128 .f32 := fun | 0 => Memref.whole cc5_stg16_0 | ⟨_ + 1, h⟩ => absurd h (Nat.not_lt.2 (Nat.le_add_left _ _))
abbrev sem5_16 : Fin 1 → DmaSem sig := fun | 0 => cc5_sem16_0 | ⟨_ + 1, h⟩ => absurd h (Nat.not_lt.2 (Nat.le_add_left _ _))
abbrev reads5_16 : Fin grid5.rank → Bool := ![false]

abbrev stage5_17 : Fin 1 → Memref sig .tc .vmem S256x512 .f32 := fun | 0 => Memref.whole cc5_stg17_0 | ⟨_ + 1, h⟩ => absurd h (Nat.not_lt.2 (Nat.le_add_left _ _))
abbrev sem5_17 : Fin 1 → DmaSem sig := fun | 0 => cc5_sem17_0 | ⟨_ + 1, h⟩ => absurd h (Nat.not_lt.2 (Nat.le_add_left _ _))
abbrev reads5_17 : Fin grid5.rank → Bool := ![false]

abbrev stage5_18 : Fin 1 → Memref sig .tc .vmem S1x128 .f32 := fun | 0 => Memref.whole cc5_stg18_0 | ⟨_ + 1, h⟩ => absurd h (Nat.not_lt.2 (Nat.le_add_left _ _))
abbrev sem5_18 : Fin 1 → DmaSem sig := fun | 0 => cc5_sem18_0 | ⟨_ + 1, h⟩ => absurd h (Nat.not_lt.2 (Nat.le_add_left _ _))
abbrev reads5_18 : Fin grid5.rank → Bool := ![false]

abbrev stage5_19 : Fin 1 → Memref sig .tc .vmem S1408x512 .f32 := fun | 0 => Memref.whole cc5_stg19_0 | ⟨_ + 1, h⟩ => absurd h (Nat.not_lt.2 (Nat.le_add_left _ _))
abbrev sem5_19 : Fin 1 → DmaSem sig := fun | 0 => cc5_sem19_0 | ⟨_ + 1, h⟩ => absurd h (Nat.not_lt.2 (Nat.le_add_left _ _))
abbrev reads5_19 : Fin grid5.rank → Bool := ![false]

abbrev stage5_20 : Fin 1 → Memref sig .tc .vmem S1x512 .f32 := fun | 0 => Memref.whole cc5_stg20_0 | ⟨_ + 1, h⟩ => absurd h (Nat.not_lt.2 (Nat.le_add_left _ _))
abbrev sem5_20 : Fin 1 → DmaSem sig := fun | 0 => cc5_sem20_0 | ⟨_ + 1, h⟩ => absurd h (Nat.not_lt.2 (Nat.le_add_left _ _))
abbrev reads5_20 : Fin grid5.rank → Bool := ![false]

abbrev stage5_21 : Fin 1 → Memref sig .tc .vmem S512x256 .f32 := fun | 0 => Memref.whole cc5_stg21_0 | ⟨_ + 1, h⟩ => absurd h (Nat.not_lt.2 (Nat.le_add_left _ _))
abbrev sem5_21 : Fin 1 → DmaSem sig := fun | 0 => cc5_sem21_0 | ⟨_ + 1, h⟩ => absurd h (Nat.not_lt.2 (Nat.le_add_left _ _))
abbrev reads5_21 : Fin grid5.rank → Bool := ![false]

abbrev stage5_22 : Fin 1 → Memref sig .tc .vmem S1x256 .f32 := fun | 0 => Memref.whole cc5_stg22_0 | ⟨_ + 1, h⟩ => absurd h (Nat.not_lt.2 (Nat.le_add_left _ _))
abbrev sem5_22 : Fin 1 → DmaSem sig := fun | 0 => cc5_sem22_0 | ⟨_ + 1, h⟩ => absurd h (Nat.not_lt.2 (Nat.le_add_left _ _))
abbrev reads5_22 : Fin grid5.rank → Bool := ![false]

abbrev stage5_23 : Fin 1 → Memref sig .tc .vmem S256x128 .f32 := fun | 0 => Memref.whole cc5_stg23_0 | ⟨_ + 1, h⟩ => absurd h (Nat.not_lt.2 (Nat.le_add_left _ _))
abbrev sem5_23 : Fin 1 → DmaSem sig := fun | 0 => cc5_sem23_0 | ⟨_ + 1, h⟩ => absurd h (Nat.not_lt.2 (Nat.le_add_left _ _))
abbrev reads5_23 : Fin grid5.rank → Bool := ![false]

abbrev stage5_24 : Fin 1 → Memref sig .tc .vmem S1x128 .f32 := fun | 0 => Memref.whole cc5_stg24_0 | ⟨_ + 1, h⟩ => absurd h (Nat.not_lt.2 (Nat.le_add_left _ _))
abbrev sem5_24 : Fin 1 → DmaSem sig := fun | 0 => cc5_sem24_0 | ⟨_ + 1, h⟩ => absurd h (Nat.not_lt.2 (Nat.le_add_left _ _))
abbrev reads5_24 : Fin grid5.rank → Bool := ![false]

abbrev stage5_25 : Fin 1 → Memref sig .tc .vmem S1024x128 .f32 := fun | 0 => Memref.whole cc5_stg25_0 | ⟨_ + 1, h⟩ => absurd h (Nat.not_lt.2 (Nat.le_add_left _ _))
abbrev sem5_25 : Fin 1 → DmaSem sig := fun | 0 => cc5_sem25_0 | ⟨_ + 1, h⟩ => absurd h (Nat.not_lt.2 (Nat.le_add_left _ _))
abbrev reads5_25 : Fin grid5.rank → Bool := ![true]

abbrev stage5_26 : Fin 1 → Memref sig .tc .vmem S1024x128 .f32 := fun | 0 => Memref.whole cc5_stg26_0 | ⟨_ + 1, h⟩ => absurd h (Nat.not_lt.2 (Nat.le_add_left _ _))
abbrev sem5_26 : Fin 1 → DmaSem sig := fun | 0 => cc5_sem26_0 | ⟨_ + 1, h⟩ => absurd h (Nat.not_lt.2 (Nat.le_add_left _ _))
abbrev reads5_26 : Fin grid5.rank → Bool := ![true]

abbrev stage5_27 : Fin 1 → Memref sig .tc .vmem S1024x128 .f32 := fun | 0 => Memref.whole cc5_stg27_0 | ⟨_ + 1, h⟩ => absurd h (Nat.not_lt.2 (Nat.le_add_left _ _))
abbrev sem5_27 : Fin 1 → DmaSem sig := fun | 0 => cc5_sem27_0 | ⟨_ + 1, h⟩ => absurd h (Nat.not_lt.2 (Nat.le_add_left _ _))
abbrev reads5_27 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1024x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S128x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S128x1 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x1 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S1024x1 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 1 → Memref sig .tc .vmem S1024x1 .f32 := fun | 0 => Memref.whole cc6_stg14_0 | ⟨_ + 1, h⟩ => absurd h (Nat.not_lt.2 (Nat.le_add_left _ _))
abbrev sem6_14 : Fin 1 → DmaSem sig := fun | 0 => cc6_sem14_0 | ⟨_ + 1, h⟩ => absurd h (Nat.not_lt.2 (Nat.le_add_left _ _))
abbrev reads6_14 : Fin grid6.rank → Bool := ![false]

class Facts₀ : Prop where
  shapeCasts_S64512x4x64_S64512x256 : S64512x4x64.ShapeCasts S64512x256
  shapeCasts_S64512_S64512x1 : S64512.ShapeCasts S64512x1
  bcast_S_S256x512 : S_.BroadcastsInDim S256x512 (![] : Fin 0 → Fin S256x512.rank)
  bcast_S_S1 : S_.BroadcastsInDim S1 (![] : Fin 0 → Fin S1.rank)
  concatenates_S1_S1_S2_d0 : Shape.Concatenates [S1, S1] S2 0
  shapeCasts_S128_S1x128 : S128.ShapeCasts S1x128
  shapeCasts_S512_S1x512 : S512.ShapeCasts S1x512
  shapeCasts_S256_S1x256 : S256.ShapeCasts S1x256
  inb_S1024x32_S1024x32_0_0 : ∀ a, (![0, 0] : Fin 2 → Nat) a + S1024x32.size a ≤ S1024x32.size a
  h_S1024x32 : 0 < S1024x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x1000_S1024x1000_0_0 : ∀ a, (![0, 0] : Fin 2 → Nat) a + S1024x1000.size a ≤ S1024x1000.size a
  h_S1024x1000 : 0 < S1024x1000.numel
  inb_S1000x128_S1000x128_0_0 : ∀ a, (![0, 0] : Fin 2 → Nat) a + S1000x128.size a ≤ S1000x128.size a
  h_S1000x128 : 0 < S1000x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  concatenates_S1024x128_S1024x128_S1024x128_S1024x128_S1024x128_S1024x128_S1024x128_S1024x128_S1024x128_S1024x128_S1024x128_S1024x1408_d1 : Shape.Concatenates [S1024x128, S1024x128, S1024x128, S1024x128, S1024x128, S1024x128, S1024x128, S1024x128, S1024x128, S1024x128, S1024x128] S1024x1408 1
  inb_S1408x512_S1408x512_0_0 : ∀ a, (![0, 0] : Fin 2 → Nat) a + S1408x512.size a ≤ S1408x512.size a
  h_S1408x512 : 0 < S1408x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  shapeCasts_S32768x128_S16384x2x128 : S32768x128.ShapeCasts S16384x2x128
  inb_S1024x2x128_S1024x2x128_0_0_0 : ∀ a, (![0, 0, 0] : Fin 3 → Nat) a + S1024x2x128.size a ≤ S1024x2x128.size a
  h_S1024x2x128 : 0 < S1024x2x128.numel
  shapeCasts_S1024x2x128_S1024x2x128 : S1024x2x128.ShapeCasts S1024x2x128
  slices_S1024x2x128_o0_0_0_S1024x1x128 : S1024x2x128.Slices ![0, 0, 0] S1024x1x128
  shapeCasts_S1024x1x128_S1024x128 : S1024x1x128.ShapeCasts S1024x128
  slices_S1024x2x128_o0_1_0_S1024x1x128 : S1024x2x128.Slices ![0, 1, 0] S1024x1x128
  shapeCasts_S16384x128_S8192x2x128 : S16384x128.ShapeCasts S8192x2x128
  shapeCasts_S8192x128_S4096x2x128 : S8192x128.ShapeCasts S4096x2x128
  shapeCasts_S4096x128_S2048x2x128 : S4096x128.ShapeCasts S2048x2x128
  shapeCasts_S2048x128_S1024x2x128 : S2048x128.ShapeCasts S1024x2x128
  shapeCasts_S1_S1x1 : S1.ShapeCasts S1x1
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  scatter_S256x512_S2_S64x128_01_n_01_0_wf : ScatterDims.WF S256x512 S2 S64x128 [0, 1] [] [0, 1] 0
  dot_S1024x32_S32x128_S1024x128_1_0_0_1_n_n_wf : DotDims.WF S1024x32 S32x128 S1024x128 [1] [0] [0] [1] [] []
  dot_S1024x1000_S1000x128_S1024x128_1_0_0_1_n_n_wf : DotDims.WF S1024x1000 S1000x128 S1024x128 [1] [0] [0] [1] [] []
  dot_S1024x256_S256x512_S1024x512_1_0_0_1_n_n_wf : DotDims.WF S1024x256 S256x512 S1024x512 [1] [0] [0] [1] [] []
  dot_S1024x1408_S1408x512_S1024x512_1_0_0_1_n_n_wf : DotDims.WF S1024x1408 S1408x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S64512x32.size a
  hwx0_0 : ∀ i : grid0.Coords, EltTy.bits .f32 = 32 ∨ (Rect.block (s := S64512x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S64512x32.size a
  hwx0_1 : ∀ i : grid0.Coords, EltTy.bits .f32 = 32 ∨ (Rect.block (s := S64512x32) S1024x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1000.size a ≤ S64512x1000.size a
  hwx0_2 : ∀ i : grid0.Coords, EltTy.bits .f32 = 32 ∨ (Rect.block (s := S64512x1000) S1024x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S64512x256.size a
  hwx0_3 : ∀ i : grid0.Coords, EltTy.bits .f32 = 32 ∨ (Rect.block (s := S64512x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S64512x256.size a
  hwx0_4 : ∀ i : grid0.Coords, EltTy.bits .f32 = 32 ∨ (Rect.block (s := S64512x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S64512x1.size a
  hwx0_5 : ∀ i : grid0.Coords, EltTy.bits .f32 = 32 ∨ (Rect.block (s := S64512x1) S1024x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .f32 = 32 ∨ (Rect.block (s := S32x128) S32x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S32x128.size a
  hwx0_8 : ∀ i : grid0.Coords, EltTy.bits .f32 = 32 ∨ (Rect.block (s := S32x128) S32x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1000x128.size a ≤ S1000x128.size a
  hwx0_10 : ∀ i : grid0.Coords, EltTy.bits .f32 = 32 ∨ (Rect.block (s := S1000x128) S1000x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x512.size a ≤ S256x512.size a
  hwx0_12 : ∀ i : grid0.Coords, EltTy.bits .f32 = 32 ∨ (Rect.block (s := S256x512) S256x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1408x512.size a ≤ S1408x512.size a
  hwx0_14 : ∀ i : grid0.Coords, EltTy.bits .f32 = 32 ∨ (Rect.block (s := S1408x512) S1408x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x512.size a ≤ S1x512.size a
  hwx0_15 : ∀ i : grid0.Coords, EltTy.bits .f32 = 32 ∨ (Rect.block (s := S1x512) S1x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S512x256.size a
  hwx0_16 : ∀ i : grid0.Coords, EltTy.bits .f32 = 32 ∨ (Rect.block (s := S512x256) S512x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x256.size a ≤ S1x256.size a
  hwx0_17 : ∀ i : grid0.Coords, EltTy.bits .f32 = 32 ∨ (Rect.block (s := S1x256) S1x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x128.size a ≤ S256x128.size a
  hwx0_18 : ∀ i : grid0.Coords, EltTy.bits .f32 = 32 ∨ (Rect.block (s := S256x128) S256x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x128.size a ≤ S32768x128.size a
  hwx0_20 : ∀ i : grid0.Coords, EltTy.bits .f32 = 32 ∨ (Rect.block (s := S32768x128) S1024x128.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1024x128.size a ≤ S32768x128.size a
  hwx0_21 : ∀ i : grid0.Coords, EltTy.bits .f32 = 32 ∨ (Rect.block (s := S32768x128) S1024x128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1024x128.size a ≤ S32768x128.size a
  hwx0_22 : ∀ i : grid0.Coords, EltTy.bits .f32 = 32 ∨ (Rect.block (s := S32768x128) S1024x128.size (cc0_transform_22 i) (hinb0_22 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S64512x32.size a
  hwx1_0 : ∀ i : grid1.Coords, EltTy.bits .f32 = 32 ∨ (Rect.block (s := S64512x32) S1024x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x32.size a ≤ S64512x32.size a
  hwx1_1 : ∀ i : grid1.Coords, EltTy.bits .f32 = 32 ∨ (Rect.block (s := S64512x32) S1024x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1000.size a ≤ S64512x1000.size a
  hwx1_2 : ∀ i : grid1.Coords, EltTy.bits .f32 = 32 ∨ (Rect.block (s := S64512x1000) S1024x1000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S64512x256.size a
  hwx1_3 : ∀ i : grid1.Coords, EltTy.bits .f32 = 32 ∨ (Rect.block (s := S64512x256) S1024x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S64512x256.size a
  hwx1_4 : ∀ i : grid1.Coords, EltTy.bits .f32 = 32 ∨ (Rect.block (s := S64512x256) S1024x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S64512x1.size a
  hwx1_5 : ∀ i : grid1.Coords, EltTy.bits .f32 = 32 ∨ (Rect.block (s := S64512x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S64512x1.size a
  hwx1_6 : ∀ i : grid1.Coords, EltTy.bits .f32 = 32 ∨ (Rect.block (s := S64512x1) S1024x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S64512x1.size a
  hwx1_7 : ∀ i : grid1.Coords, EltTy.bits .f32 = 32 ∨ (Rect.block (s := S64512x1) S1024x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x2x128.size a ≤ S16384x2x128.size a
  hwx1_8 : ∀ i : grid1.Coords, EltTy.bits .f32 = 32 ∨ (Rect.block (s := S16384x2x128) S1024x2x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x2x128.size a ≤ S16384x2x128.size a
  hwx1_9 : ∀ i : grid1.Coords, EltTy.bits .f32 = 32 ∨ (Rect.block (s := S16384x2x128) S1024x2x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x2x128.size a ≤ S16384x2x128.size a
  hwx1_10 : ∀ i : grid1.Coords, EltTy.bits .f32 = 32 ∨ (Rect.block (s := S16384x2x128) S1024x2x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S32x128.size a ≤ S32x128.size a
  hwx1_11 : ∀ i : grid1.Coords, EltTy.bits .f32 = 32 ∨ (Rect.block (s := S32x128) S32x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S32x128.size a ≤ S32x128.size a
  hwx1_13 : ∀ i : grid1.Coords, EltTy.bits .f32 = 32 ∨ (Rect.block (s := S32x128) S32x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1000x128.size a ≤ S1000x128.size a
  hwx1_15 : ∀ i : grid1.Coords, EltTy.bits .f32 = 32 ∨ (Rect.block (s := S1000x128) S1000x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x128.size a ≤ S1x128.size a
  hwx1_16 : ∀ i : grid1.Coords, EltTy.bits .f32 = 32 ∨ (Rect.block (s := S1x128) S1x128.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S256x512.size a ≤ S256x512.size a
  hwx1_17 : ∀ i : grid1.Coords, EltTy.bits .f32 = 32 ∨ (Rect.block (s := S256x512) S256x512.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x128.size a ≤ S1x128.size a
  hwx1_18 : ∀ i : grid1.Coords, EltTy.bits .f32 = 32 ∨ (Rect.block (s := S1x128) S1x128.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S1408x512.size a ≤ S1408x512.size a
  hwx1_19 : ∀ i : grid1.Coords, EltTy.bits .f32 = 32 ∨ (Rect.block (s := S1408x512) S1408x512.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S1x512.size a ≤ S1x512.size a
  hwx1_20 : ∀ i : grid1.Coords, EltTy.bits .f32 = 32 ∨ (Rect.block (s := S1x512) S1x512.size (cc1_transform_20 i) (hinb1_20 i)).WholeWords (EltTy.packing .f32)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S512x256.size a ≤ S512x256.size a
  hwx1_21 : ∀ i : grid1.Coords, EltTy.bits .f32 = 32 ∨ (Rect.block (s := S512x256) S512x256.size (cc1_transform_21 i) (hinb1_21 i)).WholeWords (EltTy.packing .f32)
  hstage1_22 : ∀ j, (stage1_22 j).IsWhole
  nbuf1_22 : grid1.bufCount reads1_22 true = 1
  hreads1_22 : ∀ i i' : grid1.Coords, (∀ a, reads1_22 a = true → i a = i' a) → cc1_transform_22 i = cc1_transform_22 i'
  hinb1_22 : ∀ (i : grid1.Coords) a, (cc1_transform_22 i a + 1) * S1x256.size a ≤ S1x256.size a
  hwx1_22 : ∀ i : grid1.Coords, EltTy.bits .f32 = 32 ∨ (Rect.block (s := S1x256) S1x256.size (cc1_transform_22 i) (hinb1_22 i)).WholeWords (EltTy.packing .f32)
  hstage1_23 : ∀ j, (stage1_23 j).IsWhole
  nbuf1_23 : grid1.bufCount reads1_23 true = 1
  hreads1_23 : ∀ i i' : grid1.Coords, (∀ a, reads1_23 a = true → i a = i' a) → cc1_transform_23 i = cc1_transform_23 i'
  hinb1_23 : ∀ (i : grid1.Coords) a, (cc1_transform_23 i a + 1) * S256x128.size a ≤ S256x128.size a
  hwx1_23 : ∀ i : grid1.Coords, EltTy.bits .f32 = 32 ∨ (Rect.block (s := S256x128) S256x128.size (cc1_transform_23 i) (hinb1_23 i)).WholeWords (EltTy.packing .f32)
  hstage1_24 : ∀ j, (stage1_24 j).IsWhole
  nbuf1_24 : grid1.bufCount reads1_24 true = 1
  hreads1_24 : ∀ i i' : grid1.Coords, (∀ a, reads1_24 a = true → i a = i' a) → cc1_transform_24 i = cc1_transform_24 i'
  hinb1_24 : ∀ (i : grid1.Coords) a, (cc1_transform_24 i a + 1) * S1x128.size a ≤ S1x128.size a
  hwx1_24 : ∀ i : grid1.Coords, EltTy.bits .f32 = 32 ∨ (Rect.block (s := S1x128) S1x128.size (cc1_transform_24 i) (hinb1_24 i)).WholeWords (EltTy.packing .f32)
  hstage1_25 : ∀ j, (stage1_25 j).IsWhole
  nbuf1_25 : grid1.bufCount reads1_25 false = 2
  hreads1_25 : ∀ i i' : grid1.Coords, (∀ a, reads1_25 a = true → i a = i' a) → cc1_transform_25 i = cc1_transform_25 i'
  hinb1_25 : ∀ (i : grid1.Coords) a, (cc1_transform_25 i a + 1) * S1024x128.size a ≤ S16384x128.size a
  hwx1_25 : ∀ i : grid1.Coords, EltTy.bits .f32 = 32 ∨ (Rect.block (s := S16384x128) S1024x128.size (cc1_transform_25 i) (hinb1_25 i)).WholeWords (EltTy.packing .f32)
  hstage1_26 : ∀ j, (stage1_26 j).IsWhole
  nbuf1_26 : grid1.bufCount reads1_26 false = 2
  hreads1_26 : ∀ i i' : grid1.Coords, (∀ a, reads1_26 a = true → i a = i' a) → cc1_transform_26 i = cc1_transform_26 i'
  hinb1_26 : ∀ (i : grid1.Coords) a, (cc1_transform_26 i a + 1) * S1024x128.size a ≤ S16384x128.size a
  hwx1_26 : ∀ i : grid1.Coords, EltTy.bits .f32 = 32 ∨ (Rect.block (s := S16384x128) S1024x128.size (cc1_transform_26 i) (hinb1_26 i)).WholeWords (EltTy.packing .f32)
  hstage1_27 : ∀ j, (stage1_27 j).IsWhole
  nbuf1_27 : grid1.bufCount reads1_27 false = 2
  hreads1_27 : ∀ i i' : grid1.Coords, (∀ a, reads1_27 a = true → i a = i' a) → cc1_transform_27 i = cc1_transform_27 i'
  hinb1_27 : ∀ (i : grid1.Coords) a, (cc1_transform_27 i a + 1) * S1024x128.size a ≤ S16384x128.size a
  hwx1_27 : ∀ i : grid1.Coords, EltTy.bits .f32 = 32 ∨ (Rect.block (s := S16384x128) S1024x128.size (cc1_transform_27 i) (hinb1_27 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x32.size a ≤ S64512x32.size a
  hwx2_0 : ∀ i : grid2.Coords, EltTy.bits .f32 = 32 ∨ (Rect.block (s := S64512x32) S1024x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x32.size a ≤ S64512x32.size a
  hwx2_1 : ∀ i : grid2.Coords, EltTy.bits .f32 = 32 ∨ (Rect.block (s := S64512x32) S1024x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1000.size a ≤ S64512x1000.size a
  hwx2_2 : ∀ i : grid2.Coords, EltTy.bits .f32 = 32 ∨ (Rect.block (s := S64512x1000) S1024x1000.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S64512x256.size a
  hwx2_3 : ∀ i : grid2.Coords, EltTy.bits .f32 = 32 ∨ (Rect.block (s := S64512x256) S1024x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S64512x256.size a
  hwx2_4 : ∀ i : grid2.Coords, EltTy.bits .f32 = 32 ∨ (Rect.block (s := S64512x256) S1024x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S64512x1.size a
  hwx2_5 : ∀ i : grid2.Coords, EltTy.bits .f32 = 32 ∨ (Rect.block (s := S64512x1) S1024x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x1.size a ≤ S64512x1.size a
  hwx2_6 : ∀ i : grid2.Coords, EltTy.bits .f32 = 32 ∨ (Rect.block (s := S64512x1) S1024x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x1.size a ≤ S64512x1.size a
  hwx2_7 : ∀ i : grid2.Coords, EltTy.bits .f32 = 32 ∨ (Rect.block (s := S64512x1) S1024x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x2x128.size a ≤ S8192x2x128.size a
  hwx2_8 : ∀ i : grid2.Coords, EltTy.bits .f32 = 32 ∨ (Rect.block (s := S8192x2x128) S1024x2x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1024x2x128.size a ≤ S8192x2x128.size a
  hwx2_9 : ∀ i : grid2.Coords, EltTy.bits .f32 = 32 ∨ (Rect.block (s := S8192x2x128) S1024x2x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1024x2x128.size a ≤ S8192x2x128.size a
  hwx2_10 : ∀ i : grid2.Coords, EltTy.bits .f32 = 32 ∨ (Rect.block (s := S8192x2x128) S1024x2x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S32x128.size a ≤ S32x128.size a
  hwx2_11 : ∀ i : grid2.Coords, EltTy.bits .f32 = 32 ∨ (Rect.block (s := S32x128) S32x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S32x128.size a ≤ S32x128.size a
  hwx2_13 : ∀ i : grid2.Coords, EltTy.bits .f32 = 32 ∨ (Rect.block (s := S32x128) S32x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x128.size a
  hwx2_14 : ∀ i : grid2.Coords, EltTy.bits .f32 = 32 ∨ (Rect.block (s := S1x128) S1x128.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1000x128.size a ≤ S1000x128.size a
  hwx2_15 : ∀ i : grid2.Coords, EltTy.bits .f32 = 32 ∨ (Rect.block (s := S1000x128) S1000x128.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x128.size a ≤ S1x128.size a
  hwx2_16 : ∀ i : grid2.Coords, EltTy.bits .f32 = 32 ∨ (Rect.block (s := S1x128) S1x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S256x512.size a ≤ S256x512.size a
  hwx2_17 : ∀ i : grid2.Coords, EltTy.bits .f32 = 32 ∨ (Rect.block (s := S256x512) S256x512.size (cc2_transform_17 i) (hinb2_17 i)).WholeWords (EltTy.packing .f32)
  hstage2_18 : ∀ j, (stage2_18 j).IsWhole
  nbuf2_18 : grid2.bufCount reads2_18 true = 1
  hreads2_18 : ∀ i i' : grid2.Coords, (∀ a, reads2_18 a = true → i a = i' a) → cc2_transform_18 i = cc2_transform_18 i'
  hinb2_18 : ∀ (i : grid2.Coords) a, (cc2_transform_18 i a + 1) * S1x128.size a ≤ S1x128.size a
  hwx2_18 : ∀ i : grid2.Coords, EltTy.bits .f32 = 32 ∨ (Rect.block (s := S1x128) S1x128.size (cc2_transform_18 i) (hinb2_18 i)).WholeWords (EltTy.packing .f32)
  hstage2_19 : ∀ j, (stage2_19 j).IsWhole
  nbuf2_19 : grid2.bufCount reads2_19 true = 1
  hreads2_19 : ∀ i i' : grid2.Coords, (∀ a, reads2_19 a = true → i a = i' a) → cc2_transform_19 i = cc2_transform_19 i'
  hinb2_19 : ∀ (i : grid2.Coords) a, (cc2_transform_19 i a + 1) * S1408x512.size a ≤ S1408x512.size a
  hwx2_19 : ∀ i : grid2.Coords, EltTy.bits .f32 = 32 ∨ (Rect.block (s := S1408x512) S1408x512.size (cc2_transform_19 i) (hinb2_19 i)).WholeWords (EltTy.packing .f32)
  hstage2_20 : ∀ j, (stage2_20 j).IsWhole
  nbuf2_20 : grid2.bufCount reads2_20 true = 1
  hreads2_20 : ∀ i i' : grid2.Coords, (∀ a, reads2_20 a = true → i a = i' a) → cc2_transform_20 i = cc2_transform_20 i'
  hinb2_20 : ∀ (i : grid2.Coords) a, (cc2_transform_20 i a + 1) * S1x512.size a ≤ S1x512.size a
  hwx2_20 : ∀ i : grid2.Coords, EltTy.bits .f32 = 32 ∨ (Rect.block (s := S1x512) S1x512.size (cc2_transform_20 i) (hinb2_20 i)).WholeWords (EltTy.packing .f32)
  hstage2_21 : ∀ j, (stage2_21 j).IsWhole
  nbuf2_21 : grid2.bufCount reads2_21 true = 1
  hreads2_21 : ∀ i i' : grid2.Coords, (∀ a, reads2_21 a = true → i a = i' a) → cc2_transform_21 i = cc2_transform_21 i'
  hinb2_21 : ∀ (i : grid2.Coords) a, (cc2_transform_21 i a + 1) * S512x256.size a ≤ S512x256.size a
  hwx2_21 : ∀ i : grid2.Coords, EltTy.bits .f32 = 32 ∨ (Rect.block (s := S512x256) S512x256.size (cc2_transform_21 i) (hinb2_21 i)).WholeWords (EltTy.packing .f32)
  hstage2_22 : ∀ j, (stage2_22 j).IsWhole
  nbuf2_22 : grid2.bufCount reads2_22 true = 1
  hreads2_22 : ∀ i i' : grid2.Coords, (∀ a, reads2_22 a = true → i a = i' a) → cc2_transform_22 i = cc2_transform_22 i'
  hinb2_22 : ∀ (i : grid2.Coords) a, (cc2_transform_22 i a + 1) * S1x256.size a ≤ S1x256.size a
  hwx2_22 : ∀ i : grid2.Coords, EltTy.bits .f32 = 32 ∨ (Rect.block (s := S1x256) S1x256.size (cc2_transform_22 i) (hinb2_22 i)).WholeWords (EltTy.packing .f32)
  hstage2_23 : ∀ j, (stage2_23 j).IsWhole
  nbuf2_23 : grid2.bufCount reads2_23 true = 1
  hreads2_23 : ∀ i i' : grid2.Coords, (∀ a, reads2_23 a = true → i a = i' a) → cc2_transform_23 i = cc2_transform_23 i'
  hinb2_23 : ∀ (i : grid2.Coords) a, (cc2_transform_23 i a + 1) * S256x128.size a ≤ S256x128.size a
  hwx2_23 : ∀ i : grid2.Coords, EltTy.bits .f32 = 32 ∨ (Rect.block (s := S256x128) S256x128.size (cc2_transform_23 i) (hinb2_23 i)).WholeWords (EltTy.packing .f32)
  hstage2_24 : ∀ j, (stage2_24 j).IsWhole
  nbuf2_24 : grid2.bufCount reads2_24 true = 1
  hreads2_24 : ∀ i i' : grid2.Coords, (∀ a, reads2_24 a = true → i a = i' a) → cc2_transform_24 i = cc2_transform_24 i'
  hinb2_24 : ∀ (i : grid2.Coords) a, (cc2_transform_24 i a + 1) * S1x128.size a ≤ S1x128.size a
  hwx2_24 : ∀ i : grid2.Coords, EltTy.bits .f32 = 32 ∨ (Rect.block (s := S1x128) S1x128.size (cc2_transform_24 i) (hinb2_24 i)).WholeWords (EltTy.packing .f32)
  hstage2_25 : ∀ j, (stage2_25 j).IsWhole
  nbuf2_25 : grid2.bufCount reads2_25 false = 2
  hreads2_25 : ∀ i i' : grid2.Coords, (∀ a, reads2_25 a = true → i a = i' a) → cc2_transform_25 i = cc2_transform_25 i'
  hinb2_25 : ∀ (i : grid2.Coords) a, (cc2_transform_25 i a + 1) * S1024x128.size a ≤ S8192x128.size a
  hwx2_25 : ∀ i : grid2.Coords, EltTy.bits .f32 = 32 ∨ (Rect.block (s := S8192x128) S1024x128.size (cc2_transform_25 i) (hinb2_25 i)).WholeWords (EltTy.packing .f32)
  hstage2_26 : ∀ j, (stage2_26 j).IsWhole
  nbuf2_26 : grid2.bufCount reads2_26 false = 2
  hreads2_26 : ∀ i i' : grid2.Coords, (∀ a, reads2_26 a = true → i a = i' a) → cc2_transform_26 i = cc2_transform_26 i'
  hinb2_26 : ∀ (i : grid2.Coords) a, (cc2_transform_26 i a + 1) * S1024x128.size a ≤ S8192x128.size a
  hwx2_26 : ∀ i : grid2.Coords, EltTy.bits .f32 = 32 ∨ (Rect.block (s := S8192x128) S1024x128.size (cc2_transform_26 i) (hinb2_26 i)).WholeWords (EltTy.packing .f32)
  hstage2_27 : ∀ j, (stage2_27 j).IsWhole
  nbuf2_27 : grid2.bufCount reads2_27 false = 2
  hreads2_27 : ∀ i i' : grid2.Coords, (∀ a, reads2_27 a = true → i a = i' a) → cc2_transform_27 i = cc2_transform_27 i'
  hinb2_27 : ∀ (i : grid2.Coords) a, (cc2_transform_27 i a + 1) * S1024x128.size a ≤ S8192x128.size a
  hwx2_27 : ∀ i : grid2.Coords, EltTy.bits .f32 = 32 ∨ (Rect.block (s := S8192x128) S1024x128.size (cc2_transform_27 i) (hinb2_27 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x32.size a ≤ S64512x32.size a
  hwx3_0 : ∀ i : grid3.Coords, EltTy.bits .f32 = 32 ∨ (Rect.block (s := S64512x32) S1024x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x32.size a ≤ S64512x32.size a
  hwx3_1 : ∀ i : grid3.Coords, EltTy.bits .f32 = 32 ∨ (Rect.block (s := S64512x32) S1024x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1000.size a ≤ S64512x1000.size a
  hwx3_2 : ∀ i : grid3.Coords, EltTy.bits .f32 = 32 ∨ (Rect.block (s := S64512x1000) S1024x1000.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S64512x256.size a
  hwx3_3 : ∀ i : grid3.Coords, EltTy.bits .f32 = 32 ∨ (Rect.block (s := S64512x256) S1024x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x256.size a ≤ S64512x256.size a
  hwx3_4 : ∀ i : grid3.Coords, EltTy.bits .f32 = 32 ∨ (Rect.block (s := S64512x256) S1024x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1.size a ≤ S64512x1.size a
  hwx3_5 : ∀ i : grid3.Coords, EltTy.bits .f32 = 32 ∨ (Rect.block (s := S64512x1) S1024x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x1.size a ≤ S64512x1.size a
  hwx3_6 : ∀ i : grid3.Coords, EltTy.bits .f32 = 32 ∨ (Rect.block (s := S64512x1) S1024x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1024x1.size a ≤ S64512x1.size a
  hwx3_7 : ∀ i : grid3.Coords, EltTy.bits .f32 = 32 ∨ (Rect.block (s := S64512x1) S1024x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1024x2x128.size a ≤ S4096x2x128.size a
  hwx3_8 : ∀ i : grid3.Coords, EltTy.bits .f32 = 32 ∨ (Rect.block (s := S4096x2x128) S1024x2x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1024x2x128.size a ≤ S4096x2x128.size a
  hwx3_9 : ∀ i : grid3.Coords, EltTy.bits .f32 = 32 ∨ (Rect.block (s := S4096x2x128) S1024x2x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S1024x2x128.size a ≤ S4096x2x128.size a
  hwx3_10 : ∀ i : grid3.Coords, EltTy.bits .f32 = 32 ∨ (Rect.block (s := S4096x2x128) S1024x2x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S32x128.size a ≤ S32x128.size a
  hwx3_11 : ∀ i : grid3.Coords, EltTy.bits .f32 = 32 ∨ (Rect.block (s := S32x128) S32x128.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x128.size a ≤ S1x128.size a
  hwx3_12 : ∀ i : grid3.Coords, EltTy.bits .f32 = 32 ∨ (Rect.block (s := S1x128) S1x128.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S32x128.size a ≤ S32x128.size a
  hwx3_13 : ∀ i : grid3.Coords, EltTy.bits .f32 = 32 ∨ (Rect.block (s := S32x128) S32x128.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x128.size a ≤ S1x128.size a
  hwx3_14 : ∀ i : grid3.Coords, EltTy.bits .f32 = 32 ∨ (Rect.block (s := S1x128) S1x128.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S1000x128.size a ≤ S1000x128.size a
  hwx3_15 : ∀ i : grid3.Coords, EltTy.bits .f32 = 32 ∨ (Rect.block (s := S1000x128) S1000x128.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S1x128.size a ≤ S1x128.size a
  hwx3_16 : ∀ i : grid3.Coords, EltTy.bits .f32 = 32 ∨ (Rect.block (s := S1x128) S1x128.size (cc3_transform_16 i) (hinb3_16 i)).WholeWords (EltTy.packing .f32)
  hstage3_17 : ∀ j, (stage3_17 j).IsWhole
  nbuf3_17 : grid3.bufCount reads3_17 true = 1
  hreads3_17 : ∀ i i' : grid3.Coords, (∀ a, reads3_17 a = true → i a = i' a) → cc3_transform_17 i = cc3_transform_17 i'
  hinb3_17 : ∀ (i : grid3.Coords) a, (cc3_transform_17 i a + 1) * S256x512.size a ≤ S256x512.size a
  hwx3_17 : ∀ i : grid3.Coords, EltTy.bits .f32 = 32 ∨ (Rect.block (s := S256x512) S256x512.size (cc3_transform_17 i) (hinb3_17 i)).WholeWords (EltTy.packing .f32)
  hstage3_18 : ∀ j, (stage3_18 j).IsWhole
  nbuf3_18 : grid3.bufCount reads3_18 true = 1
  hreads3_18 : ∀ i i' : grid3.Coords, (∀ a, reads3_18 a = true → i a = i' a) → cc3_transform_18 i = cc3_transform_18 i'
  hinb3_18 : ∀ (i : grid3.Coords) a, (cc3_transform_18 i a + 1) * S1x128.size a ≤ S1x128.size a
  hwx3_18 : ∀ i : grid3.Coords, EltTy.bits .f32 = 32 ∨ (Rect.block (s := S1x128) S1x128.size (cc3_transform_18 i) (hinb3_18 i)).WholeWords (EltTy.packing .f32)
  hstage3_19 : ∀ j, (stage3_19 j).IsWhole
  nbuf3_19 : grid3.bufCount reads3_19 true = 1
  hreads3_19 : ∀ i i' : grid3.Coords, (∀ a, reads3_19 a = true → i a = i' a) → cc3_transform_19 i = cc3_transform_19 i'
  hinb3_19 : ∀ (i : grid3.Coords) a, (cc3_transform_19 i a + 1) * S1408x512.size a ≤ S1408x512.size a
  hwx3_19 : ∀ i : grid3.Coords, EltTy.bits .f32 = 32 ∨ (Rect.block (s := S1408x512) S1408x512.size (cc3_transform_19 i) (hinb3_19 i)).WholeWords (EltTy.packing .f32)
  hstage3_20 : ∀ j, (stage3_20 j).IsWhole
  nbuf3_20 : grid3.bufCount reads3_20 true = 1
  hreads3_20 : ∀ i i' : grid3.Coords, (∀ a, reads3_20 a = true → i a = i' a) → cc3_transform_20 i = cc3_transform_20 i'
  hinb3_20 : ∀ (i : grid3.Coords) a, (cc3_transform_20 i a + 1) * S1x512.size a ≤ S1x512.size a
  hwx3_20 : ∀ i : grid3.Coords, EltTy.bits .f32 = 32 ∨ (Rect.block (s := S1x512) S1x512.size (cc3_transform_20 i) (hinb3_20 i)).WholeWords (EltTy.packing .f32)
  hstage3_21 : ∀ j, (stage3_21 j).IsWhole
  nbuf3_21 : grid3.bufCount reads3_21 true = 1
  hreads3_21 : ∀ i i' : grid3.Coords, (∀ a, reads3_21 a = true → i a = i' a) → cc3_transform_21 i = cc3_transform_21 i'
  hinb3_21 : ∀ (i : grid3.Coords) a, (cc3_transform_21 i a + 1) * S512x256.size a ≤ S512x256.size a
  hwx3_21 : ∀ i : grid3.Coords, EltTy.bits .f32 = 32 ∨ (Rect.block (s := S512x256) S512x256.size (cc3_transform_21 i) (hinb3_21 i)).WholeWords (EltTy.packing .f32)
  hstage3_22 : ∀ j, (stage3_22 j).IsWhole
  nbuf3_22 : grid3.bufCount reads3_22 true = 1
  hreads3_22 : ∀ i i' : grid3.Coords, (∀ a, reads3_22 a = true → i a = i' a) → cc3_transform_22 i = cc3_transform_22 i'
  hinb3_22 : ∀ (i : grid3.Coords) a, (cc3_transform_22 i a + 1) * S1x256.size a ≤ S1x256.size a
  hwx3_22 : ∀ i : grid3.Coords, EltTy.bits .f32 = 32 ∨ (Rect.block (s := S1x256) S1x256.size (cc3_transform_22 i) (hinb3_22 i)).WholeWords (EltTy.packing .f32)
  hstage3_23 : ∀ j, (stage3_23 j).IsWhole
  nbuf3_23 : grid3.bufCount reads3_23 true = 1
  hreads3_23 : ∀ i i' : grid3.Coords, (∀ a, reads3_23 a = true → i a = i' a) → cc3_transform_23 i = cc3_transform_23 i'
  hinb3_23 : ∀ (i : grid3.Coords) a, (cc3_transform_23 i a + 1) * S256x128.size a ≤ S256x128.size a
  hwx3_23 : ∀ i : grid3.Coords, EltTy.bits .f32 = 32 ∨ (Rect.block (s := S256x128) S256x128.size (cc3_transform_23 i) (hinb3_23 i)).WholeWords (EltTy.packing .f32)
  hstage3_24 : ∀ j, (stage3_24 j).IsWhole
  nbuf3_24 : grid3.bufCount reads3_24 true = 1
  hreads3_24 : ∀ i i' : grid3.Coords, (∀ a, reads3_24 a = true → i a = i' a) → cc3_transform_24 i = cc3_transform_24 i'
  hinb3_24 : ∀ (i : grid3.Coords) a, (cc3_transform_24 i a + 1) * S1x128.size a ≤ S1x128.size a
  hwx3_24 : ∀ i : grid3.Coords, EltTy.bits .f32 = 32 ∨ (Rect.block (s := S1x128) S1x128.size (cc3_transform_24 i) (hinb3_24 i)).WholeWords (EltTy.packing .f32)
  hstage3_25 : ∀ j, (stage3_25 j).IsWhole
  nbuf3_25 : grid3.bufCount reads3_25 false = 2
  hreads3_25 : ∀ i i' : grid3.Coords, (∀ a, reads3_25 a = true → i a = i' a) → cc3_transform_25 i = cc3_transform_25 i'
  hinb3_25 : ∀ (i : grid3.Coords) a, (cc3_transform_25 i a + 1) * S1024x128.size a ≤ S4096x128.size a
  hwx3_25 : ∀ i : grid3.Coords, EltTy.bits .f32 = 32 ∨ (Rect.block (s := S4096x128) S1024x128.size (cc3_transform_25 i) (hinb3_25 i)).WholeWords (EltTy.packing .f32)
  hstage3_26 : ∀ j, (stage3_26 j).IsWhole
  nbuf3_26 : grid3.bufCount reads3_26 false = 2
  hreads3_26 : ∀ i i' : grid3.Coords, (∀ a, reads3_26 a = true → i a = i' a) → cc3_transform_26 i = cc3_transform_26 i'
  hinb3_26 : ∀ (i : grid3.Coords) a, (cc3_transform_26 i a + 1) * S1024x128.size a ≤ S4096x128.size a
  hwx3_26 : ∀ i : grid3.Coords, EltTy.bits .f32 = 32 ∨ (Rect.block (s := S4096x128) S1024x128.size (cc3_transform_26 i) (hinb3_26 i)).WholeWords (EltTy.packing .f32)
  hstage3_27 : ∀ j, (stage3_27 j).IsWhole
  nbuf3_27 : grid3.bufCount reads3_27 false = 2
  hreads3_27 : ∀ i i' : grid3.Coords, (∀ a, reads3_27 a = true → i a = i' a) → cc3_transform_27 i = cc3_transform_27 i'
  hinb3_27 : ∀ (i : grid3.Coords) a, (cc3_transform_27 i a + 1) * S1024x128.size a ≤ S4096x128.size a
  hwx3_27 : ∀ i : grid3.Coords, EltTy.bits .f32 = 32 ∨ (Rect.block (s := S4096x128) S1024x128.size (cc3_transform_27 i) (hinb3_27 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x32.size a ≤ S64512x32.size a
  hwx4_0 : ∀ i : grid4.Coords, EltTy.bits .f32 = 32 ∨ (Rect.block (s := S64512x32) S1024x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x32.size a ≤ S64512x32.size a
  hwx4_1 : ∀ i : grid4.Coords, EltTy.bits .f32 = 32 ∨ (Rect.block (s := S64512x32) S1024x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1000.size a ≤ S64512x1000.size a
  hwx4_2 : ∀ i : grid4.Coords, EltTy.bits .f32 = 32 ∨ (Rect.block (s := S64512x1000) S1024x1000.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x256.size a ≤ S64512x256.size a
  hwx4_3 : ∀ i : grid4.Coords, EltTy.bits .f32 = 32 ∨ (Rect.block (s := S64512x256) S1024x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x256.size a ≤ S64512x256.size a
  hwx4_4 : ∀ i : grid4.Coords, EltTy.bits .f32 = 32 ∨ (Rect.block (s := S64512x256) S1024x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1024x1.size a ≤ S64512x1.size a
  hwx4_5 : ∀ i : grid4.Coords, EltTy.bits .f32 = 32 ∨ (Rect.block (s := S64512x1) S1024x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1024x1.size a ≤ S64512x1.size a
  hwx4_6 : ∀ i : grid4.Coords, EltTy.bits .f32 = 32 ∨ (Rect.block (s := S64512x1) S1024x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x1.size a ≤ S64512x1.size a
  hwx4_7 : ∀ i : grid4.Coords, EltTy.bits .f32 = 32 ∨ (Rect.block (s := S64512x1) S1024x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1024x2x128.size a ≤ S2048x2x128.size a
  hwx4_8 : ∀ i : grid4.Coords, EltTy.bits .f32 = 32 ∨ (Rect.block (s := S2048x2x128) S1024x2x128.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1024x2x128.size a ≤ S2048x2x128.size a
  hwx4_9 : ∀ i : grid4.Coords, EltTy.bits .f32 = 32 ∨ (Rect.block (s := S2048x2x128) S1024x2x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S1024x2x128.size a ≤ S2048x2x128.size a
  hwx4_10 : ∀ i : grid4.Coords, EltTy.bits .f32 = 32 ∨ (Rect.block (s := S2048x2x128) S1024x2x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S32x128.size a ≤ S32x128.size a
  hwx4_11 : ∀ i : grid4.Coords, EltTy.bits .f32 = 32 ∨ (Rect.block (s := S32x128) S32x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x128.size a ≤ S1x128.size a
  hwx4_12 : ∀ i : grid4.Coords, EltTy.bits .f32 = 32 ∨ (Rect.block (s := S1x128) S1x128.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S32x128.size a ≤ S32x128.size a
  hwx4_13 : ∀ i : grid4.Coords, EltTy.bits .f32 = 32 ∨ (Rect.block (s := S32x128) S32x128.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x128.size a ≤ S1x128.size a
  hwx4_14 : ∀ i : grid4.Coords, EltTy.bits .f32 = 32 ∨ (Rect.block (s := S1x128) S1x128.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S1000x128.size a ≤ S1000x128.size a
  hwx4_15 : ∀ i : grid4.Coords, EltTy.bits .f32 = 32 ∨ (Rect.block (s := S1000x128) S1000x128.size (cc4_transform_15 i) (hinb4_15 i)).WholeWords (EltTy.packing .f32)
  hstage4_16 : ∀ j, (stage4_16 j).IsWhole
  nbuf4_16 : grid4.bufCount reads4_16 true = 1
  hreads4_16 : ∀ i i' : grid4.Coords, (∀ a, reads4_16 a = true → i a = i' a) → cc4_transform_16 i = cc4_transform_16 i'
  hinb4_16 : ∀ (i : grid4.Coords) a, (cc4_transform_16 i a + 1) * S1x128.size a ≤ S1x128.size a
  hwx4_16 : ∀ i : grid4.Coords, EltTy.bits .f32 = 32 ∨ (Rect.block (s := S1x128) S1x128.size (cc4_transform_16 i) (hinb4_16 i)).WholeWords (EltTy.packing .f32)
  hstage4_17 : ∀ j, (stage4_17 j).IsWhole
  nbuf4_17 : grid4.bufCount reads4_17 true = 1
  hreads4_17 : ∀ i i' : grid4.Coords, (∀ a, reads4_17 a = true → i a = i' a) → cc4_transform_17 i = cc4_transform_17 i'
  hinb4_17 : ∀ (i : grid4.Coords) a, (cc4_transform_17 i a + 1) * S256x512.size a ≤ S256x512.size a
  hwx4_17 : ∀ i : grid4.Coords, EltTy.bits .f32 = 32 ∨ (Rect.block (s := S256x512) S256x512.size (cc4_transform_17 i) (hinb4_17 i)).WholeWords (EltTy.packing .f32)
  hstage4_18 : ∀ j, (stage4_18 j).IsWhole
  nbuf4_18 : grid4.bufCount reads4_18 true = 1
  hreads4_18 : ∀ i i' : grid4.Coords, (∀ a, reads4_18 a = true → i a = i' a) → cc4_transform_18 i = cc4_transform_18 i'
  hinb4_18 : ∀ (i : grid4.Coords) a, (cc4_transform_18 i a + 1) * S1x128.size a ≤ S1x128.size a
  hwx4_18 : ∀ i : grid4.Coords, EltTy.bits .f32 = 32 ∨ (Rect.block (s := S1x128) S1x128.size (cc4_transform_18 i) (hinb4_18 i)).WholeWords (EltTy.packing .f32)
  hstage4_19 : ∀ j, (stage4_19 j).IsWhole
  nbuf4_19 : grid4.bufCount reads4_19 true = 1
  hreads4_19 : ∀ i i' : grid4.Coords, (∀ a, reads4_19 a = true → i a = i' a) → cc4_transform_19 i = cc4_transform_19 i'
  hinb4_19 : ∀ (i : grid4.Coords) a, (cc4_transform_19 i a + 1) * S1408x512.size a ≤ S1408x512.size a
  hwx4_19 : ∀ i : grid4.Coords, EltTy.bits .f32 = 32 ∨ (Rect.block (s := S1408x512) S1408x512.size (cc4_transform_19 i) (hinb4_19 i)).WholeWords (EltTy.packing .f32)
  hstage4_20 : ∀ j, (stage4_20 j).IsWhole
  nbuf4_20 : grid4.bufCount reads4_20 true = 1
  hreads4_20 : ∀ i i' : grid4.Coords, (∀ a, reads4_20 a = true → i a = i' a) → cc4_transform_20 i = cc4_transform_20 i'
  hinb4_20 : ∀ (i : grid4.Coords) a, (cc4_transform_20 i a + 1) * S1x512.size a ≤ S1x512.size a
  hwx4_20 : ∀ i : grid4.Coords, EltTy.bits .f32 = 32 ∨ (Rect.block (s := S1x512) S1x512.size (cc4_transform_20 i) (hinb4_20 i)).WholeWords (EltTy.packing .f32)
  hstage4_21 : ∀ j, (stage4_21 j).IsWhole
  nbuf4_21 : grid4.bufCount reads4_21 true = 1
  hreads4_21 : ∀ i i' : grid4.Coords, (∀ a, reads4_21 a = true → i a = i' a) → cc4_transform_21 i = cc4_transform_21 i'
  hinb4_21 : ∀ (i : grid4.Coords) a, (cc4_transform_21 i a + 1) * S512x256.size a ≤ S512x256.size a
  hwx4_21 : ∀ i : grid4.Coords, EltTy.bits .f32 = 32 ∨ (Rect.block (s := S512x256) S512x256.size (cc4_transform_21 i) (hinb4_21 i)).WholeWords (EltTy.packing .f32)
  hstage4_22 : ∀ j, (stage4_22 j).IsWhole
  nbuf4_22 : grid4.bufCount reads4_22 true = 1
  hreads4_22 : ∀ i i' : grid4.Coords, (∀ a, reads4_22 a = true → i a = i' a) → cc4_transform_22 i = cc4_transform_22 i'
  hinb4_22 : ∀ (i : grid4.Coords) a, (cc4_transform_22 i a + 1) * S1x256.size a ≤ S1x256.size a
  hwx4_22 : ∀ i : grid4.Coords, EltTy.bits .f32 = 32 ∨ (Rect.block (s := S1x256) S1x256.size (cc4_transform_22 i) (hinb4_22 i)).WholeWords (EltTy.packing .f32)
  hstage4_23 : ∀ j, (stage4_23 j).IsWhole
  nbuf4_23 : grid4.bufCount reads4_23 true = 1
  hreads4_23 : ∀ i i' : grid4.Coords, (∀ a, reads4_23 a = true → i a = i' a) → cc4_transform_23 i = cc4_transform_23 i'
  hinb4_23 : ∀ (i : grid4.Coords) a, (cc4_transform_23 i a + 1) * S256x128.size a ≤ S256x128.size a
  hwx4_23 : ∀ i : grid4.Coords, EltTy.bits .f32 = 32 ∨ (Rect.block (s := S256x128) S256x128.size (cc4_transform_23 i) (hinb4_23 i)).WholeWords (EltTy.packing .f32)
  hstage4_24 : ∀ j, (stage4_24 j).IsWhole
  nbuf4_24 : grid4.bufCount reads4_24 true = 1
  hreads4_24 : ∀ i i' : grid4.Coords, (∀ a, reads4_24 a = true → i a = i' a) → cc4_transform_24 i = cc4_transform_24 i'
  hinb4_24 : ∀ (i : grid4.Coords) a, (cc4_transform_24 i a + 1) * S1x128.size a ≤ S1x128.size a
  hwx4_24 : ∀ i : grid4.Coords, EltTy.bits .f32 = 32 ∨ (Rect.block (s := S1x128) S1x128.size (cc4_transform_24 i) (hinb4_24 i)).WholeWords (EltTy.packing .f32)
  hstage4_25 : ∀ j, (stage4_25 j).IsWhole
  nbuf4_25 : grid4.bufCount reads4_25 false = 2
  hreads4_25 : ∀ i i' : grid4.Coords, (∀ a, reads4_25 a = true → i a = i' a) → cc4_transform_25 i = cc4_transform_25 i'
  hinb4_25 : ∀ (i : grid4.Coords) a, (cc4_transform_25 i a + 1) * S1024x128.size a ≤ S2048x128.size a
  hwx4_25 : ∀ i : grid4.Coords, EltTy.bits .f32 = 32 ∨ (Rect.block (s := S2048x128) S1024x128.size (cc4_transform_25 i) (hinb4_25 i)).WholeWords (EltTy.packing .f32)
  hstage4_26 : ∀ j, (stage4_26 j).IsWhole
  nbuf4_26 : grid4.bufCount reads4_26 false = 2
  hreads4_26 : ∀ i i' : grid4.Coords, (∀ a, reads4_26 a = true → i a = i' a) → cc4_transform_26 i = cc4_transform_26 i'
  hinb4_26 : ∀ (i : grid4.Coords) a, (cc4_transform_26 i a + 1) * S1024x128.size a ≤ S2048x128.size a
  hwx4_26 : ∀ i : grid4.Coords, EltTy.bits .f32 = 32 ∨ (Rect.block (s := S2048x128) S1024x128.size (cc4_transform_26 i) (hinb4_26 i)).WholeWords (EltTy.packing .f32)
  hstage4_27 : ∀ j, (stage4_27 j).IsWhole
  nbuf4_27 : grid4.bufCount reads4_27 false = 2
  hreads4_27 : ∀ i i' : grid4.Coords, (∀ a, reads4_27 a = true → i a = i' a) → cc4_transform_27 i = cc4_transform_27 i'
  hinb4_27 : ∀ (i : grid4.Coords) a, (cc4_transform_27 i a + 1) * S1024x128.size a ≤ S2048x128.size a
  hwx4_27 : ∀ i : grid4.Coords, EltTy.bits .f32 = 32 ∨ (Rect.block (s := S2048x128) S1024x128.size (cc4_transform_27 i) (hinb4_27 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S1024x32.size a ≤ S64512x32.size a
  hwx5_0 : ∀ i : grid5.Coords, EltTy.bits .f32 = 32 ∨ (Rect.block (s := S64512x32) S1024x32.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S1024x32.size a ≤ S64512x32.size a
  hwx5_1 : ∀ i : grid5.Coords, EltTy.bits .f32 = 32 ∨ (Rect.block (s := S64512x32) S1024x32.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1024x1000.size a ≤ S64512x1000.size a
  hwx5_2 : ∀ i : grid5.Coords, EltTy.bits .f32 = 32 ∨ (Rect.block (s := S64512x1000) S1024x1000.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S1024x256.size a ≤ S64512x256.size a
  hwx5_3 : ∀ i : grid5.Coords, EltTy.bits .f32 = 32 ∨ (Rect.block (s := S64512x256) S1024x256.size (cc5_transform_3 i) (hinb5_3 i)).WholeWords (EltTy.packing .f32)
  hstage5_4 : ∀ j, (stage5_4 j).IsWhole
  nbuf5_4 : grid5.bufCount reads5_4 false = 1
  hreads5_4 : ∀ i i' : grid5.Coords, (∀ a, reads5_4 a = true → i a = i' a) → cc5_transform_4 i = cc5_transform_4 i'
  hinb5_4 : ∀ (i : grid5.Coords) a, (cc5_transform_4 i a + 1) * S1024x256.size a ≤ S64512x256.size a
  hwx5_4 : ∀ i : grid5.Coords, EltTy.bits .f32 = 32 ∨ (Rect.block (s := S64512x256) S1024x256.size (cc5_transform_4 i) (hinb5_4 i)).WholeWords (EltTy.packing .f32)
  hstage5_5 : ∀ j, (stage5_5 j).IsWhole
  nbuf5_5 : grid5.bufCount reads5_5 false = 1
  hreads5_5 : ∀ i i' : grid5.Coords, (∀ a, reads5_5 a = true → i a = i' a) → cc5_transform_5 i = cc5_transform_5 i'
  hinb5_5 : ∀ (i : grid5.Coords) a, (cc5_transform_5 i a + 1) * S1024x1.size a ≤ S64512x1.size a
  hwx5_5 : ∀ i : grid5.Coords, EltTy.bits .f32 = 32 ∨ (Rect.block (s := S64512x1) S1024x1.size (cc5_transform_5 i) (hinb5_5 i)).WholeWords (EltTy.packing .f32)
  hstage5_6 : ∀ j, (stage5_6 j).IsWhole
  nbuf5_6 : grid5.bufCount reads5_6 false = 1
  hreads5_6 : ∀ i i' : grid5.Coords, (∀ a, reads5_6 a = true → i a = i' a) → cc5_transform_6 i = cc5_transform_6 i'
  hinb5_6 : ∀ (i : grid5.Coords) a, (cc5_transform_6 i a + 1) * S1024x1.size a ≤ S64512x1.size a
  hwx5_6 : ∀ i : grid5.Coords, EltTy.bits .f32 = 32 ∨ (Rect.block (s := S64512x1) S1024x1.size (cc5_transform_6 i) (hinb5_6 i)).WholeWords (EltTy.packing .f32)
  hstage5_7 : ∀ j, (stage5_7 j).IsWhole
  nbuf5_7 : grid5.bufCount reads5_7 false = 1
  hreads5_7 : ∀ i i' : grid5.Coords, (∀ a, reads5_7 a = true → i a = i' a) → cc5_transform_7 i = cc5_transform_7 i'
  hinb5_7 : ∀ (i : grid5.Coords) a, (cc5_transform_7 i a + 1) * S1024x1.size a ≤ S64512x1.size a
  hwx5_7 : ∀ i : grid5.Coords, EltTy.bits .f32 = 32 ∨ (Rect.block (s := S64512x1) S1024x1.size (cc5_transform_7 i) (hinb5_7 i)).WholeWords (EltTy.packing .f32)
  hstage5_8 : ∀ j, (stage5_8 j).IsWhole
  nbuf5_8 : grid5.bufCount reads5_8 false = 1
  hreads5_8 : ∀ i i' : grid5.Coords, (∀ a, reads5_8 a = true → i a = i' a) → cc5_transform_8 i = cc5_transform_8 i'
  hinb5_8 : ∀ (i : grid5.Coords) a, (cc5_transform_8 i a + 1) * S1024x2x128.size a ≤ S1024x2x128.size a
  hwx5_8 : ∀ i : grid5.Coords, EltTy.bits .f32 = 32 ∨ (Rect.block (s := S1024x2x128) S1024x2x128.size (cc5_transform_8 i) (hinb5_8 i)).WholeWords (EltTy.packing .f32)
  hstage5_9 : ∀ j, (stage5_9 j).IsWhole
  nbuf5_9 : grid5.bufCount reads5_9 false = 1
  hreads5_9 : ∀ i i' : grid5.Coords, (∀ a, reads5_9 a = true → i a = i' a) → cc5_transform_9 i = cc5_transform_9 i'
  hinb5_9 : ∀ (i : grid5.Coords) a, (cc5_transform_9 i a + 1) * S1024x2x128.size a ≤ S1024x2x128.size a
  hwx5_9 : ∀ i : grid5.Coords, EltTy.bits .f32 = 32 ∨ (Rect.block (s := S1024x2x128) S1024x2x128.size (cc5_transform_9 i) (hinb5_9 i)).WholeWords (EltTy.packing .f32)
  hstage5_10 : ∀ j, (stage5_10 j).IsWhole
  nbuf5_10 : grid5.bufCount reads5_10 false = 1
  hreads5_10 : ∀ i i' : grid5.Coords, (∀ a, reads5_10 a = true → i a = i' a) → cc5_transform_10 i = cc5_transform_10 i'
  hinb5_10 : ∀ (i : grid5.Coords) a, (cc5_transform_10 i a + 1) * S1024x2x128.size a ≤ S1024x2x128.size a
  hwx5_10 : ∀ i : grid5.Coords, EltTy.bits .f32 = 32 ∨ (Rect.block (s := S1024x2x128) S1024x2x128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S32x128.size a ≤ S32x128.size a
  hwx5_11 : ∀ i : grid5.Coords, EltTy.bits .f32 = 32 ∨ (Rect.block (s := S32x128) S32x128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S1x128.size a ≤ S1x128.size a
  hwx5_12 : ∀ i : grid5.Coords, EltTy.bits .f32 = 32 ∨ (Rect.block (s := S1x128) S1x128.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S32x128.size a ≤ S32x128.size a
  hwx5_13 : ∀ i : grid5.Coords, EltTy.bits .f32 = 32 ∨ (Rect.block (s := S32x128) S32x128.size (cc5_transform_13 i) (hinb5_13 i)).WholeWords (EltTy.packing .f32)
  hstage5_14 : ∀ j, (stage5_14 j).IsWhole
  nbuf5_14 : grid5.bufCount reads5_14 true = 1
  hreads5_14 : ∀ i i' : grid5.Coords, (∀ a, reads5_14 a = true → i a = i' a) → cc5_transform_14 i = cc5_transform_14 i'
  hinb5_14 : ∀ (i : grid5.Coords) a, (cc5_transform_14 i a + 1) * S1x128.size a ≤ S1x128.size a
  hwx5_14 : ∀ i : grid5.Coords, EltTy.bits .f32 = 32 ∨ (Rect.block (s := S1x128) S1x128.size (cc5_transform_14 i) (hinb5_14 i)).WholeWords (EltTy.packing .f32)
  hstage5_15 : ∀ j, (stage5_15 j).IsWhole
  nbuf5_15 : grid5.bufCount reads5_15 true = 1
  hreads5_15 : ∀ i i' : grid5.Coords, (∀ a, reads5_15 a = true → i a = i' a) → cc5_transform_15 i = cc5_transform_15 i'
  hinb5_15 : ∀ (i : grid5.Coords) a, (cc5_transform_15 i a + 1) * S1000x128.size a ≤ S1000x128.size a
  hwx5_15 : ∀ i : grid5.Coords, EltTy.bits .f32 = 32 ∨ (Rect.block (s := S1000x128) S1000x128.size (cc5_transform_15 i) (hinb5_15 i)).WholeWords (EltTy.packing .f32)
  hstage5_16 : ∀ j, (stage5_16 j).IsWhole
  nbuf5_16 : grid5.bufCount reads5_16 true = 1
  hreads5_16 : ∀ i i' : grid5.Coords, (∀ a, reads5_16 a = true → i a = i' a) → cc5_transform_16 i = cc5_transform_16 i'
  hinb5_16 : ∀ (i : grid5.Coords) a, (cc5_transform_16 i a + 1) * S1x128.size a ≤ S1x128.size a
  hwx5_16 : ∀ i : grid5.Coords, EltTy.bits .f32 = 32 ∨ (Rect.block (s := S1x128) S1x128.size (cc5_transform_16 i) (hinb5_16 i)).WholeWords (EltTy.packing .f32)
  hstage5_17 : ∀ j, (stage5_17 j).IsWhole
  nbuf5_17 : grid5.bufCount reads5_17 true = 1
  hreads5_17 : ∀ i i' : grid5.Coords, (∀ a, reads5_17 a = true → i a = i' a) → cc5_transform_17 i = cc5_transform_17 i'
  hinb5_17 : ∀ (i : grid5.Coords) a, (cc5_transform_17 i a + 1) * S256x512.size a ≤ S256x512.size a
  hwx5_17 : ∀ i : grid5.Coords, EltTy.bits .f32 = 32 ∨ (Rect.block (s := S256x512) S256x512.size (cc5_transform_17 i) (hinb5_17 i)).WholeWords (EltTy.packing .f32)
  hstage5_18 : ∀ j, (stage5_18 j).IsWhole
  nbuf5_18 : grid5.bufCount reads5_18 true = 1
  hreads5_18 : ∀ i i' : grid5.Coords, (∀ a, reads5_18 a = true → i a = i' a) → cc5_transform_18 i = cc5_transform_18 i'
  hinb5_18 : ∀ (i : grid5.Coords) a, (cc5_transform_18 i a + 1) * S1x128.size a ≤ S1x128.size a
  hwx5_18 : ∀ i : grid5.Coords, EltTy.bits .f32 = 32 ∨ (Rect.block (s := S1x128) S1x128.size (cc5_transform_18 i) (hinb5_18 i)).WholeWords (EltTy.packing .f32)
  hstage5_19 : ∀ j, (stage5_19 j).IsWhole
  nbuf5_19 : grid5.bufCount reads5_19 true = 1
  hreads5_19 : ∀ i i' : grid5.Coords, (∀ a, reads5_19 a = true → i a = i' a) → cc5_transform_19 i = cc5_transform_19 i'
  hinb5_19 : ∀ (i : grid5.Coords) a, (cc5_transform_19 i a + 1) * S1408x512.size a ≤ S1408x512.size a
  hwx5_19 : ∀ i : grid5.Coords, EltTy.bits .f32 = 32 ∨ (Rect.block (s := S1408x512) S1408x512.size (cc5_transform_19 i) (hinb5_19 i)).WholeWords (EltTy.packing .f32)
  hstage5_20 : ∀ j, (stage5_20 j).IsWhole
  nbuf5_20 : grid5.bufCount reads5_20 true = 1
  hreads5_20 : ∀ i i' : grid5.Coords, (∀ a, reads5_20 a = true → i a = i' a) → cc5_transform_20 i = cc5_transform_20 i'
  hinb5_20 : ∀ (i : grid5.Coords) a, (cc5_transform_20 i a + 1) * S1x512.size a ≤ S1x512.size a
  hwx5_20 : ∀ i : grid5.Coords, EltTy.bits .f32 = 32 ∨ (Rect.block (s := S1x512) S1x512.size (cc5_transform_20 i) (hinb5_20 i)).WholeWords (EltTy.packing .f32)
  hstage5_21 : ∀ j, (stage5_21 j).IsWhole
  nbuf5_21 : grid5.bufCount reads5_21 true = 1
  hreads5_21 : ∀ i i' : grid5.Coords, (∀ a, reads5_21 a = true → i a = i' a) → cc5_transform_21 i = cc5_transform_21 i'
  hinb5_21 : ∀ (i : grid5.Coords) a, (cc5_transform_21 i a + 1) * S512x256.size a ≤ S512x256.size a
  hwx5_21 : ∀ i : grid5.Coords, EltTy.bits .f32 = 32 ∨ (Rect.block (s := S512x256) S512x256.size (cc5_transform_21 i) (hinb5_21 i)).WholeWords (EltTy.packing .f32)
  hstage5_22 : ∀ j, (stage5_22 j).IsWhole
  nbuf5_22 : grid5.bufCount reads5_22 true = 1
  hreads5_22 : ∀ i i' : grid5.Coords, (∀ a, reads5_22 a = true → i a = i' a) → cc5_transform_22 i = cc5_transform_22 i'
  hinb5_22 : ∀ (i : grid5.Coords) a, (cc5_transform_22 i a + 1) * S1x256.size a ≤ S1x256.size a
  hwx5_22 : ∀ i : grid5.Coords, EltTy.bits .f32 = 32 ∨ (Rect.block (s := S1x256) S1x256.size (cc5_transform_22 i) (hinb5_22 i)).WholeWords (EltTy.packing .f32)
  hstage5_23 : ∀ j, (stage5_23 j).IsWhole
  nbuf5_23 : grid5.bufCount reads5_23 true = 1
  hreads5_23 : ∀ i i' : grid5.Coords, (∀ a, reads5_23 a = true → i a = i' a) → cc5_transform_23 i = cc5_transform_23 i'
  hinb5_23 : ∀ (i : grid5.Coords) a, (cc5_transform_23 i a + 1) * S256x128.size a ≤ S256x128.size a
  hwx5_23 : ∀ i : grid5.Coords, EltTy.bits .f32 = 32 ∨ (Rect.block (s := S256x128) S256x128.size (cc5_transform_23 i) (hinb5_23 i)).WholeWords (EltTy.packing .f32)
  hstage5_24 : ∀ j, (stage5_24 j).IsWhole
  nbuf5_24 : grid5.bufCount reads5_24 true = 1
  hreads5_24 : ∀ i i' : grid5.Coords, (∀ a, reads5_24 a = true → i a = i' a) → cc5_transform_24 i = cc5_transform_24 i'
  hinb5_24 : ∀ (i : grid5.Coords) a, (cc5_transform_24 i a + 1) * S1x128.size a ≤ S1x128.size a
  hwx5_24 : ∀ i : grid5.Coords, EltTy.bits .f32 = 32 ∨ (Rect.block (s := S1x128) S1x128.size (cc5_transform_24 i) (hinb5_24 i)).WholeWords (EltTy.packing .f32)
  hstage5_25 : ∀ j, (stage5_25 j).IsWhole
  nbuf5_25 : grid5.bufCount reads5_25 false = 1
  hreads5_25 : ∀ i i' : grid5.Coords, (∀ a, reads5_25 a = true → i a = i' a) → cc5_transform_25 i = cc5_transform_25 i'
  hinb5_25 : ∀ (i : grid5.Coords) a, (cc5_transform_25 i a + 1) * S1024x128.size a ≤ S1024x128.size a
  hwx5_25 : ∀ i : grid5.Coords, EltTy.bits .f32 = 32 ∨ (Rect.block (s := S1024x128) S1024x128.size (cc5_transform_25 i) (hinb5_25 i)).WholeWords (EltTy.packing .f32)
  hstage5_26 : ∀ j, (stage5_26 j).IsWhole
  nbuf5_26 : grid5.bufCount reads5_26 false = 1
  hreads5_26 : ∀ i i' : grid5.Coords, (∀ a, reads5_26 a = true → i a = i' a) → cc5_transform_26 i = cc5_transform_26 i'
  hinb5_26 : ∀ (i : grid5.Coords) a, (cc5_transform_26 i a + 1) * S1024x128.size a ≤ S1024x128.size a
  hwx5_26 : ∀ i : grid5.Coords, EltTy.bits .f32 = 32 ∨ (Rect.block (s := S1024x128) S1024x128.size (cc5_transform_26 i) (hinb5_26 i)).WholeWords (EltTy.packing .f32)
  hstage5_27 : ∀ j, (stage5_27 j).IsWhole
  nbuf5_27 : grid5.bufCount reads5_27 false = 1
  hreads5_27 : ∀ i i' : grid5.Coords, (∀ a, reads5_27 a = true → i a = i' a) → cc5_transform_27 i = cc5_transform_27 i'
  hinb5_27 : ∀ (i : grid5.Coords) a, (cc5_transform_27 i a + 1) * S1024x128.size a ≤ S1024x128.size a
  hwx5_27 : ∀ i : grid5.Coords, EltTy.bits .f32 = 32 ∨ (Rect.block (s := S1024x128) S1024x128.size (cc5_transform_27 i) (hinb5_27 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S1024x128.size a
  hwx6_0 : ∀ i : grid6.Coords, EltTy.bits .f32 = 32 ∨ (Rect.block (s := S1024x128) S1024x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x1.size a ≤ S128x1.size a
  hwx6_5 : ∀ i : grid6.Coords, EltTy.bits .f32 = 32 ∨ (Rect.block (s := S128x1) S128x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S128x128.size a ≤ S128x128.size a
  hwx6_9 : ∀ i : grid6.Coords, EltTy.bits .f32 = 32 ∨ (Rect.block (s := S128x128) S128x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x128.size a ≤ S1x128.size a
  hwx6_10 : ∀ i : grid6.Coords, EltTy.bits .f32 = 32 ∨ (Rect.block (s := S1x128) S1x128.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S128x1.size a ≤ S128x1.size a
  hwx6_11 : ∀ i : grid6.Coords, EltTy.bits .f32 = 32 ∨ (Rect.block (s := S128x1) S128x1.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S1x1.size a ≤ S1x1.size a
  hwx6_12 : ∀ i : grid6.Coords, EltTy.bits .f32 = 32 ∨ (Rect.block (s := S1x1) S1x1.size (cc6_transform_12 i) (hinb6_12 i)).WholeWords (EltTy.packing .f32)
  hstage6_13 : ∀ j, (stage6_13 j).IsWhole
  nbuf6_13 : grid6.bufCount reads6_13 true = 1
  hreads6_13 : ∀ i i' : grid6.Coords, (∀ a, reads6_13 a = true → i a = i' a) → cc6_transform_13 i = cc6_transform_13 i'
  hinb6_13 : ∀ (i : grid6.Coords) a, (cc6_transform_13 i a + 1) * S1024x1.size a ≤ S1024x1.size a
  hwx6_13 : ∀ i : grid6.Coords, EltTy.bits .f32 = 32 ∨ (Rect.block (s := S1024x1) S1024x1.size (cc6_transform_13 i) (hinb6_13 i)).WholeWords (EltTy.packing .f32)
  hstage6_14 : ∀ j, (stage6_14 j).IsWhole
  nbuf6_14 : grid6.bufCount reads6_14 true = 1
  hreads6_14 : ∀ i i' : grid6.Coords, (∀ a, reads6_14 a = true → i a = i' a) → cc6_transform_14 i = cc6_transform_14 i'
  hinb6_14 : ∀ (i : grid6.Coords) a, (cc6_transform_14 i a + 1) * S1024x1.size a ≤ S1024x1.size a
  hwx6_14 : ∀ i : grid6.Coords, EltTy.bits .f32 = 32 ∨ (Rect.block (s := S1024x1) S1024x1.size (cc6_transform_14 i) (hinb6_14 i)).WholeWords (EltTy.packing .f32)

variable [Facts₀]

def scatter_S256x512_S2_S64x128_01_n_01_0 : ScatterDims S256x512 S2 S64x128 where
  updateWindowDims := [0, 1]
  insertedWindowDims := []
  scatterDimsToOperandDims := [0, 1]
  indexVectorDim := 0
  wf := scatter_S256x512_S2_S64x128_01_n_01_0_wf
def dot_S1024x32_S32x128_S1024x128_1_0_0_1_n_n : DotDims S1024x32 S32x128 S1024x128 where
  lhsContracting := [1]
  rhsContracting := [0]
  lhsNonContracting := [0]
  rhsNonContracting := [1]
  lhsBatch := []
  rhsBatch := []
  wf := dot_S1024x32_S32x128_S1024x128_1_0_0_1_n_n_wf
def dot_S1024x1000_S1000x128_S1024x128_1_0_0_1_n_n : DotDims S1024x1000 S1000x128 S1024x128 where
  lhsContracting := [1]
  rhsContracting := [0]
  lhsNonContracting := [0]
  rhsNonContracting := [1]
  lhsBatch := []
  rhsBatch := []
  wf := dot_S1024x1000_S1000x128_S1024x128_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x1408_S1408x512_S1024x512_1_0_0_1_n_n : DotDims S1024x1408 S1408x512 S1024x512 where
  lhsContracting := [1]
  rhsContracting := [0]
  lhsNonContracting := [0]
  rhsNonContracting := [1]
  lhsBatch := []
  rhsBatch := []
  wf := dot_S1024x1408_S1408x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S32x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1000x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S256x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v27) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S1408x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v28) S1x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S512x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v29) S1x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S256x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v30) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v31_0) S1024x128.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v31_1) S1024x128.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v31_2) S1024x128.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

abbrev win1_0 : Pipeline.Window sig grid1 :=
  Pipeline.Window.ofSpec (Memref.whole main_arg0) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x1000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1024x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1024x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1024x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1024x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v32) S1024x2x128.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v33) S1024x2x128.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v34) S1024x2x128.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_arg8) S32x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v35) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg10) S32x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v36) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg12) S1000x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v37) S1x128.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v23) S256x512.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v38) S1x128.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_arg16) S1408x512.size cc1_transform_19 reads1_19 false true 1 stage1_19 sem1_19
    hrank1 hreads1_19 hinb1_19 nbuf1_19 (Memref.isWhole_whole _) hwx1_19 hstage1_19

abbrev win1_20 : Pipeline.Window sig grid1 :=
  Pipeline.Window.ofSpec (Memref.whole main_v39) S1x512.size cc1_transform_20 reads1_20 false true 1 stage1_20 sem1_20
    hrank1 hreads1_20 hinb1_20 nbuf1_20 (Memref.isWhole_whole _) hwx1_20 hstage1_20

abbrev win1_21 : Pipeline.Window sig grid1 :=
  Pipeline.Window.ofSpec (Memref.whole main_arg18) S512x256.size cc1_transform_21 reads1_21 false true 1 stage1_21 sem1_21
    hrank1 hreads1_21 hinb1_21 nbuf1_21 (Memref.isWhole_whole _) hwx1_21 hstage1_21

abbrev win1_22 : Pipeline.Window sig grid1 :=
  Pipeline.Window.ofSpec (Memref.whole main_v40) S1x256.size cc1_transform_22 reads1_22 false true 1 stage1_22 sem1_22
    hrank1 hreads1_22 hinb1_22 nbuf1_22 (Memref.isWhole_whole _) hwx1_22 hstage1_22

abbrev win1_23 : Pipeline.Window sig grid1 :=
  Pipeline.Window.ofSpec (Memref.whole main_arg20) S256x128.size cc1_transform_23 reads1_23 false true 1 stage1_23 sem1_23
    hrank1 hreads1_23 hinb1_23 nbuf1_23 (Memref.isWhole_whole _) hwx1_23 hstage1_23

abbrev win1_24 : Pipeline.Window sig grid1 :=
  Pipeline.Window.ofSpec (Memref.whole main_v41) S1x128.size cc1_transform_24 reads1_24 false true 1 stage1_24 sem1_24
    hrank1 hreads1_24 hinb1_24 nbuf1_24 (Memref.isWhole_whole _) hwx1_24 hstage1_24

abbrev win1_25 : Pipeline.Window sig grid1 :=
  Pipeline.Window.ofSpec (Memref.whole main_v42_0) S1024x128.size cc1_transform_25 reads1_25 true false 2 stage1_25 sem1_25
    hrank1 hreads1_25 hinb1_25 nbuf1_25 (Memref.isWhole_whole _) hwx1_25 hstage1_25

abbrev win1_26 : Pipeline.Window sig grid1 :=
  Pipeline.Window.ofSpec (Memref.whole main_v42_1) S1024x128.size cc1_transform_26 reads1_26 true false 2 stage1_26 sem1_26
    hrank1 hreads1_26 hinb1_26 nbuf1_26 (Memref.isWhole_whole _) hwx1_26 hstage1_26

abbrev win1_27 : Pipeline.Window sig grid1 :=
  Pipeline.Window.ofSpec (Memref.whole main_v42_2) S1024x128.size cc1_transform_27 reads1_27 true false 2 stage1_27 sem1_27
    hrank1 hreads1_27 hinb1_27 nbuf1_27 (Memref.isWhole_whole _) hwx1_27 hstage1_27

abbrev win1 : Fin 28 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | 24 => win1_24 | 25 => win1_25 | 26 => win1_26 | 27 => win1_27 | ⟨_ + 28, h⟩ => absurd h (Nat.not_lt.2 (Nat.le_add_left _ _))
abbrev spec1 : Fin 28 → Pipeline.WinSpec sig grid1.rank := fun w => (win1 w).toWinSpec

abbrev win2_0 : Pipeline.Window sig grid2 :=
  Pipeline.Window.ofSpec (Memref.whole main_arg0) S1024x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1024x1000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1024x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1024x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v2) S1024x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v4) S1024x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v6) S1024x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v43) S1024x2x128.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v44) S1024x2x128.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_v45) S1024x2x128.size cc2_transform_10 reads2_10 false false 2 stage2_10 sem2_10
    hrank2 hreads2_10 hinb2_10 nbuf2_10 (Memref.isWhole_whole _) hwx2_10 hstage2_10

abbrev win2_11 : Pipeline.Window sig grid2 :=
  Pipeline.Window.ofSpec (Memref.whole main_arg8) S32x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v46) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg10) S32x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v47) S1x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg12) S1000x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v48) S1x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v23) S256x512.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v49) S1x128.size cc2_transform_18 reads2_18 false true 1 stage2_18 sem2_18
    hrank2 hreads2_18 hinb2_18 nbuf2_18 (Memref.isWhole_whole _) hwx2_18 hstage2_18

abbrev win2_19 : Pipeline.Window sig grid2 :=
  Pipeline.Window.ofSpec (Memref.whole main_arg16) S1408x512.size cc2_transform_19 reads2_19 false true 1 stage2_19 sem2_19
    hrank2 hreads2_19 hinb2_19 nbuf2_19 (Memref.isWhole_whole _) hwx2_19 hstage2_19

abbrev win2_20 : Pipeline.Window sig grid2 :=
  Pipeline.Window.ofSpec (Memref.whole main_v50) S1x512.size cc2_transform_20 reads2_20 false true 1 stage2_20 sem2_20
    hrank2 hreads2_20 hinb2_20 nbuf2_20 (Memref.isWhole_whole _) hwx2_20 hstage2_20

abbrev win2_21 : Pipeline.Window sig grid2 :=
  Pipeline.Window.ofSpec (Memref.whole main_arg18) S512x256.size cc2_transform_21 reads2_21 false true 1 stage2_21 sem2_21
    hrank2 hreads2_21 hinb2_21 nbuf2_21 (Memref.isWhole_whole _) hwx2_21 hstage2_21

abbrev win2_22 : Pipeline.Window sig grid2 :=
  Pipeline.Window.ofSpec (Memref.whole main_v51) S1x256.size cc2_transform_22 reads2_22 false true 1 stage2_22 sem2_22
    hrank2 hreads2_22 hinb2_22 nbuf2_22 (Memref.isWhole_whole _) hwx2_22 hstage2_22

abbrev win2_23 : Pipeline.Window sig grid2 :=
  Pipeline.Window.ofSpec (Memref.whole main_arg20) S256x128.size cc2_transform_23 reads2_23 false true 1 stage2_23 sem2_23
    hrank2 hreads2_23 hinb2_23 nbuf2_23 (Memref.isWhole_whole _) hwx2_23 hstage2_23

abbrev win2_24 : Pipeline.Window sig grid2 :=
  Pipeline.Window.ofSpec (Memref.whole main_v52) S1x128.size cc2_transform_24 reads2_24 false true 1 stage2_24 sem2_24
    hrank2 hreads2_24 hinb2_24 nbuf2_24 (Memref.isWhole_whole _) hwx2_24 hstage2_24

abbrev win2_25 : Pipeline.Window sig grid2 :=
  Pipeline.Window.ofSpec (Memref.whole main_v53_0) S1024x128.size cc2_transform_25 reads2_25 true false 2 stage2_25 sem2_25
    hrank2 hreads2_25 hinb2_25 nbuf2_25 (Memref.isWhole_whole _) hwx2_25 hstage2_25

abbrev win2_26 : Pipeline.Window sig grid2 :=
  Pipeline.Window.ofSpec (Memref.whole main_v53_1) S1024x128.size cc2_transform_26 reads2_26 true false 2 stage2_26 sem2_26
    hrank2 hreads2_26 hinb2_26 nbuf2_26 (Memref.isWhole_whole _) hwx2_26 hstage2_26

abbrev win2_27 : Pipeline.Window sig grid2 :=
  Pipeline.Window.ofSpec (Memref.whole main_v53_2) S1024x128.size cc2_transform_27 reads2_27 true false 2 stage2_27 sem2_27
    hrank2 hreads2_27 hinb2_27 nbuf2_27 (Memref.isWhole_whole _) hwx2_27 hstage2_27

abbrev win2 : Fin 28 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | 20 => win2_20 | 21 => win2_21 | 22 => win2_22 | 23 => win2_23 | 24 => win2_24 | 25 => win2_25 | 26 => win2_26 | 27 => win2_27 | ⟨_ + 28, h⟩ => absurd h (Nat.not_lt.2 (Nat.le_add_left _ _))
abbrev spec2 : Fin 28 → Pipeline.WinSpec sig grid2.rank := fun w => (win2 w).toWinSpec

abbrev win3_0 : Pipeline.Window sig grid3 :=
  Pipeline.Window.ofSpec (Memref.whole main_arg0) S1024x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S1024x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S1024x1000.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0) S1024x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v1) S1024x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v2) S1024x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v4) S1024x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v6) S1024x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v54) S1024x2x128.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v55) S1024x2x128.size cc3_transform_9 reads3_9 false false 2 stage3_9 sem3_9
    hrank3 hreads3_9 hinb3_9 nbuf3_9 (Memref.isWhole_whole _) hwx3_9 hstage3_9

abbrev win3_10 : Pipeline.Window sig grid3 :=
  Pipeline.Window.ofSpec (Memref.whole main_v56) S1024x2x128.size cc3_transform_10 reads3_10 false false 2 stage3_10 sem3_10
    hrank3 hreads3_10 hinb3_10 nbuf3_10 (Memref.isWhole_whole _) hwx3_10 hstage3_10

abbrev win3_11 : Pipeline.Window sig grid3 :=
  Pipeline.Window.ofSpec (Memref.whole main_arg8) S32x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v57) S1x128.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_arg10) S32x128.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v58) S1x128.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_arg12) S1000x128.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v59) S1x128.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v23) S256x512.size cc3_transform_17 reads3_17 false true 1 stage3_17 sem3_17
    hrank3 hreads3_17 hinb3_17 nbuf3_17 (Memref.isWhole_whole _) hwx3_17 hstage3_17

abbrev win3_18 : Pipeline.Window sig grid3 :=
  Pipeline.Window.ofSpec (Memref.whole main_v60) S1x128.size cc3_transform_18 reads3_18 false true 1 stage3_18 sem3_18
    hrank3 hreads3_18 hinb3_18 nbuf3_18 (Memref.isWhole_whole _) hwx3_18 hstage3_18

abbrev win3_19 : Pipeline.Window sig grid3 :=
  Pipeline.Window.ofSpec (Memref.whole main_arg16) S1408x512.size cc3_transform_19 reads3_19 false true 1 stage3_19 sem3_19
    hrank3 hreads3_19 hinb3_19 nbuf3_19 (Memref.isWhole_whole _) hwx3_19 hstage3_19

abbrev win3_20 : Pipeline.Window sig grid3 :=
  Pipeline.Window.ofSpec (Memref.whole main_v61) S1x512.size cc3_transform_20 reads3_20 false true 1 stage3_20 sem3_20
    hrank3 hreads3_20 hinb3_20 nbuf3_20 (Memref.isWhole_whole _) hwx3_20 hstage3_20

abbrev win3_21 : Pipeline.Window sig grid3 :=
  Pipeline.Window.ofSpec (Memref.whole main_arg18) S512x256.size cc3_transform_21 reads3_21 false true 1 stage3_21 sem3_21
    hrank3 hreads3_21 hinb3_21 nbuf3_21 (Memref.isWhole_whole _) hwx3_21 hstage3_21

abbrev win3_22 : Pipeline.Window sig grid3 :=
  Pipeline.Window.ofSpec (Memref.whole main_v62) S1x256.size cc3_transform_22 reads3_22 false true 1 stage3_22 sem3_22
    hrank3 hreads3_22 hinb3_22 nbuf3_22 (Memref.isWhole_whole _) hwx3_22 hstage3_22

abbrev win3_23 : Pipeline.Window sig grid3 :=
  Pipeline.Window.ofSpec (Memref.whole main_arg20) S256x128.size cc3_transform_23 reads3_23 false true 1 stage3_23 sem3_23
    hrank3 hreads3_23 hinb3_23 nbuf3_23 (Memref.isWhole_whole _) hwx3_23 hstage3_23

abbrev win3_24 : Pipeline.Window sig grid3 :=
  Pipeline.Window.ofSpec (Memref.whole main_v63) S1x128.size cc3_transform_24 reads3_24 false true 1 stage3_24 sem3_24
    hrank3 hreads3_24 hinb3_24 nbuf3_24 (Memref.isWhole_whole _) hwx3_24 hstage3_24

abbrev win3_25 : Pipeline.Window sig grid3 :=
  Pipeline.Window.ofSpec (Memref.whole main_v64_0) S1024x128.size cc3_transform_25 reads3_25 true false 2 stage3_25 sem3_25
    hrank3 hreads3_25 hinb3_25 nbuf3_25 (Memref.isWhole_whole _) hwx3_25 hstage3_25

abbrev win3_26 : Pipeline.Window sig grid3 :=
  Pipeline.Window.ofSpec (Memref.whole main_v64_1) S1024x128.size cc3_transform_26 reads3_26 true false 2 stage3_26 sem3_26
    hrank3 hreads3_26 hinb3_26 nbuf3_26 (Memref.isWhole_whole _) hwx3_26 hstage3_26

abbrev win3_27 : Pipeline.Window sig grid3 :=
  Pipeline.Window.ofSpec (Memref.whole main_v64_2) S1024x128.size cc3_transform_27 reads3_27 true false 2 stage3_27 sem3_27
    hrank3 hreads3_27 hinb3_27 nbuf3_27 (Memref.isWhole_whole _) hwx3_27 hstage3_27

abbrev win3 : Fin 28 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | 21 => win3_21 | 22 => win3_22 | 23 => win3_23 | 24 => win3_24 | 25 => win3_25 | 26 => win3_26 | 27 => win3_27 | ⟨_ + 28, h⟩ => absurd h (Nat.not_lt.2 (Nat.le_add_left _ _))
abbrev spec3 : Fin 28 → Pipeline.WinSpec sig grid3.rank := fun w => (win3 w).toWinSpec

abbrev win4_0 : Pipeline.Window sig grid4 :=
  Pipeline.Window.ofSpec (Memref.whole main_arg0) S1024x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S1024x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg2) S1024x1000.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v0) S1024x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v1) S1024x256.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v2) S1024x1.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v4) S1024x1.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v6) S1024x1.size cc4_transform_7 reads4_7 false false 2 stage4_7 sem4_7
    hrank4 hreads4_7 hinb4_7 nbuf4_7 (Memref.isWhole_whole _) hwx4_7 hstage4_7

abbrev win4_8 : Pipeline.Window sig grid4 :=
  Pipeline.Window.ofSpec (Memref.whole main_v65) S1024x2x128.size cc4_transform_8 reads4_8 false false 2 stage4_8 sem4_8
    hrank4 hreads4_8 hinb4_8 nbuf4_8 (Memref.isWhole_whole _) hwx4_8 hstage4_8

abbrev win4_9 : Pipeline.Window sig grid4 :=
  Pipeline.Window.ofSpec (Memref.whole main_v66) S1024x2x128.size cc4_transform_9 reads4_9 false false 2 stage4_9 sem4_9
    hrank4 hreads4_9 hinb4_9 nbuf4_9 (Memref.isWhole_whole _) hwx4_9 hstage4_9

abbrev win4_10 : Pipeline.Window sig grid4 :=
  Pipeline.Window.ofSpec (Memref.whole main_v67) S1024x2x128.size cc4_transform_10 reads4_10 false false 2 stage4_10 sem4_10
    hrank4 hreads4_10 hinb4_10 nbuf4_10 (Memref.isWhole_whole _) hwx4_10 hstage4_10

abbrev win4_11 : Pipeline.Window sig grid4 :=
  Pipeline.Window.ofSpec (Memref.whole main_arg8) S32x128.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v68) S1x128.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_arg10) S32x128.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v69) S1x128.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_arg12) S1000x128.size cc4_transform_15 reads4_15 false true 1 stage4_15 sem4_15
    hrank4 hreads4_15 hinb4_15 nbuf4_15 (Memref.isWhole_whole _) hwx4_15 hstage4_15

abbrev win4_16 : Pipeline.Window sig grid4 :=
  Pipeline.Window.ofSpec (Memref.whole main_v70) S1x128.size cc4_transform_16 reads4_16 false true 1 stage4_16 sem4_16
    hrank4 hreads4_16 hinb4_16 nbuf4_16 (Memref.isWhole_whole _) hwx4_16 hstage4_16

abbrev win4_17 : Pipeline.Window sig grid4 :=
  Pipeline.Window.ofSpec (Memref.whole main_v23) S256x512.size cc4_transform_17 reads4_17 false true 1 stage4_17 sem4_17
    hrank4 hreads4_17 hinb4_17 nbuf4_17 (Memref.isWhole_whole _) hwx4_17 hstage4_17

abbrev win4_18 : Pipeline.Window sig grid4 :=
  Pipeline.Window.ofSpec (Memref.whole main_v71) S1x128.size cc4_transform_18 reads4_18 false true 1 stage4_18 sem4_18
    hrank4 hreads4_18 hinb4_18 nbuf4_18 (Memref.isWhole_whole _) hwx4_18 hstage4_18

abbrev win4_19 : Pipeline.Window sig grid4 :=
  Pipeline.Window.ofSpec (Memref.whole main_arg16) S1408x512.size cc4_transform_19 reads4_19 false true 1 stage4_19 sem4_19
    hrank4 hreads4_19 hinb4_19 nbuf4_19 (Memref.isWhole_whole _) hwx4_19 hstage4_19

abbrev win4_20 : Pipeline.Window sig grid4 :=
  Pipeline.Window.ofSpec (Memref.whole main_v72) S1x512.size cc4_transform_20 reads4_20 false true 1 stage4_20 sem4_20
    hrank4 hreads4_20 hinb4_20 nbuf4_20 (Memref.isWhole_whole _) hwx4_20 hstage4_20

abbrev win4_21 : Pipeline.Window sig grid4 :=
  Pipeline.Window.ofSpec (Memref.whole main_arg18) S512x256.size cc4_transform_21 reads4_21 false true 1 stage4_21 sem4_21
    hrank4 hreads4_21 hinb4_21 nbuf4_21 (Memref.isWhole_whole _) hwx4_21 hstage4_21

abbrev win4_22 : Pipeline.Window sig grid4 :=
  Pipeline.Window.ofSpec (Memref.whole main_v73) S1x256.size cc4_transform_22 reads4_22 false true 1 stage4_22 sem4_22
    hrank4 hreads4_22 hinb4_22 nbuf4_22 (Memref.isWhole_whole _) hwx4_22 hstage4_22

abbrev win4_23 : Pipeline.Window sig grid4 :=
  Pipeline.Window.ofSpec (Memref.whole main_arg20) S256x128.size cc4_transform_23 reads4_23 false true 1 stage4_23 sem4_23
    hrank4 hreads4_23 hinb4_23 nbuf4_23 (Memref.isWhole_whole _) hwx4_23 hstage4_23

abbrev win4_24 : Pipeline.Window sig grid4 :=
  Pipeline.Window.ofSpec (Memref.whole main_v74) S1x128.size cc4_transform_24 reads4_24 false true 1 stage4_24 sem4_24
    hrank4 hreads4_24 hinb4_24 nbuf4_24 (Memref.isWhole_whole _) hwx4_24 hstage4_24

abbrev win4_25 : Pipeline.Window sig grid4 :=
  Pipeline.Window.ofSpec (Memref.whole main_v75_0) S1024x128.size cc4_transform_25 reads4_25 true false 2 stage4_25 sem4_25
    hrank4 hreads4_25 hinb4_25 nbuf4_25 (Memref.isWhole_whole _) hwx4_25 hstage4_25

abbrev win4_26 : Pipeline.Window sig grid4 :=
  Pipeline.Window.ofSpec (Memref.whole main_v75_1) S1024x128.size cc4_transform_26 reads4_26 true false 2 stage4_26 sem4_26
    hrank4 hreads4_26 hinb4_26 nbuf4_26 (Memref.isWhole_whole _) hwx4_26 hstage4_26

abbrev win4_27 : Pipeline.Window sig grid4 :=
  Pipeline.Window.ofSpec (Memref.whole main_v75_2) S1024x128.size cc4_transform_27 reads4_27 true false 2 stage4_27 sem4_27
    hrank4 hreads4_27 hinb4_27 nbuf4_27 (Memref.isWhole_whole _) hwx4_27 hstage4_27

abbrev win4 : Fin 28 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | 16 => win4_16 | 17 => win4_17 | 18 => win4_18 | 19 => win4_19 | 20 => win4_20 | 21 => win4_21 | 22 => win4_22 | 23 => win4_23 | 24 => win4_24 | 25 => win4_25 | 26 => win4_26 | 27 => win4_27 | ⟨_ + 28, h⟩ => absurd h (Nat.not_lt.2 (Nat.le_add_left _ _))
abbrev spec4 : Fin 28 → Pipeline.WinSpec sig grid4.rank := fun w => (win4 w).toWinSpec

abbrev win5_0 : Pipeline.Window sig grid5 :=
  Pipeline.Window.ofSpec (Memref.whole main_arg0) S1024x32.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S1024x32.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_arg2) S1024x1000.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v0) S1024x256.size cc5_transform_3 reads5_3 false false 1 stage5_3 sem5_3
    hrank5 hreads5_3 hinb5_3 nbuf5_3 (Memref.isWhole_whole _) hwx5_3 hstage5_3

abbrev win5_4 : Pipeline.Window sig grid5 :=
  Pipeline.Window.ofSpec (Memref.whole main_v1) S1024x256.size cc5_transform_4 reads5_4 false false 1 stage5_4 sem5_4
    hrank5 hreads5_4 hinb5_4 nbuf5_4 (Memref.isWhole_whole _) hwx5_4 hstage5_4

abbrev win5_5 : Pipeline.Window sig grid5 :=
  Pipeline.Window.ofSpec (Memref.whole main_v2) S1024x1.size cc5_transform_5 reads5_5 false false 1 stage5_5 sem5_5
    hrank5 hreads5_5 hinb5_5 nbuf5_5 (Memref.isWhole_whole _) hwx5_5 hstage5_5

abbrev win5_6 : Pipeline.Window sig grid5 :=
  Pipeline.Window.ofSpec (Memref.whole main_v4) S1024x1.size cc5_transform_6 reads5_6 false false 1 stage5_6 sem5_6
    hrank5 hreads5_6 hinb5_6 nbuf5_6 (Memref.isWhole_whole _) hwx5_6 hstage5_6

abbrev win5_7 : Pipeline.Window sig grid5 :=
  Pipeline.Window.ofSpec (Memref.whole main_v6) S1024x1.size cc5_transform_7 reads5_7 false false 1 stage5_7 sem5_7
    hrank5 hreads5_7 hinb5_7 nbuf5_7 (Memref.isWhole_whole _) hwx5_7 hstage5_7

abbrev win5_8 : Pipeline.Window sig grid5 :=
  Pipeline.Window.ofSpec (Memref.whole main_v76) S1024x2x128.size cc5_transform_8 reads5_8 false false 1 stage5_8 sem5_8
    hrank5 hreads5_8 hinb5_8 nbuf5_8 (Memref.isWhole_whole _) hwx5_8 hstage5_8

abbrev win5_9 : Pipeline.Window sig grid5 :=
  Pipeline.Window.ofSpec (Memref.whole main_v77) S1024x2x128.size cc5_transform_9 reads5_9 false false 1 stage5_9 sem5_9
    hrank5 hreads5_9 hinb5_9 nbuf5_9 (Memref.isWhole_whole _) hwx5_9 hstage5_9

abbrev win5_10 : Pipeline.Window sig grid5 :=
  Pipeline.Window.ofSpec (Memref.whole main_v78) S1024x2x128.size cc5_transform_10 reads5_10 false false 1 stage5_10 sem5_10
    hrank5 hreads5_10 hinb5_10 nbuf5_10 (Memref.isWhole_whole _) hwx5_10 hstage5_10

abbrev win5_11 : Pipeline.Window sig grid5 :=
  Pipeline.Window.ofSpec (Memref.whole main_arg8) S32x128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v79) S1x128.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_arg10) S32x128.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v80) S1x128.size cc5_transform_14 reads5_14 false true 1 stage5_14 sem5_14
    hrank5 hreads5_14 hinb5_14 nbuf5_14 (Memref.isWhole_whole _) hwx5_14 hstage5_14

abbrev win5_15 : Pipeline.Window sig grid5 :=
  Pipeline.Window.ofSpec (Memref.whole main_arg12) S1000x128.size cc5_transform_15 reads5_15 false true 1 stage5_15 sem5_15
    hrank5 hreads5_15 hinb5_15 nbuf5_15 (Memref.isWhole_whole _) hwx5_15 hstage5_15

abbrev win5_16 : Pipeline.Window sig grid5 :=
  Pipeline.Window.ofSpec (Memref.whole main_v81) S1x128.size cc5_transform_16 reads5_16 false true 1 stage5_16 sem5_16
    hrank5 hreads5_16 hinb5_16 nbuf5_16 (Memref.isWhole_whole _) hwx5_16 hstage5_16

abbrev win5_17 : Pipeline.Window sig grid5 :=
  Pipeline.Window.ofSpec (Memref.whole main_v23) S256x512.size cc5_transform_17 reads5_17 false true 1 stage5_17 sem5_17
    hrank5 hreads5_17 hinb5_17 nbuf5_17 (Memref.isWhole_whole _) hwx5_17 hstage5_17

abbrev win5_18 : Pipeline.Window sig grid5 :=
  Pipeline.Window.ofSpec (Memref.whole main_v82) S1x128.size cc5_transform_18 reads5_18 false true 1 stage5_18 sem5_18
    hrank5 hreads5_18 hinb5_18 nbuf5_18 (Memref.isWhole_whole _) hwx5_18 hstage5_18

abbrev win5_19 : Pipeline.Window sig grid5 :=
  Pipeline.Window.ofSpec (Memref.whole main_arg16) S1408x512.size cc5_transform_19 reads5_19 false true 1 stage5_19 sem5_19
    hrank5 hreads5_19 hinb5_19 nbuf5_19 (Memref.isWhole_whole _) hwx5_19 hstage5_19

abbrev win5_20 : Pipeline.Window sig grid5 :=
  Pipeline.Window.ofSpec (Memref.whole main_v83) S1x512.size cc5_transform_20 reads5_20 false true 1 stage5_20 sem5_20
    hrank5 hreads5_20 hinb5_20 nbuf5_20 (Memref.isWhole_whole _) hwx5_20 hstage5_20

abbrev win5_21 : Pipeline.Window sig grid5 :=
  Pipeline.Window.ofSpec (Memref.whole main_arg18) S512x256.size cc5_transform_21 reads5_21 false true 1 stage5_21 sem5_21
    hrank5 hreads5_21 hinb5_21 nbuf5_21 (Memref.isWhole_whole _) hwx5_21 hstage5_21

abbrev win5_22 : Pipeline.Window sig grid5 :=
  Pipeline.Window.ofSpec (Memref.whole main_v84) S1x256.size cc5_transform_22 reads5_22 false true 1 stage5_22 sem5_22
    hrank5 hreads5_22 hinb5_22 nbuf5_22 (Memref.isWhole_whole _) hwx5_22 hstage5_22

abbrev win5_23 : Pipeline.Window sig grid5 :=
  Pipeline.Window.ofSpec (Memref.whole main_arg20) S256x128.size cc5_transform_23 reads5_23 false true 1 stage5_23 sem5_23
    hrank5 hreads5_23 hinb5_23 nbuf5_23 (Memref.isWhole_whole _) hwx5_23 hstage5_23

abbrev win5_24 : Pipeline.Window sig grid5 :=
  Pipeline.Window.ofSpec (Memref.whole main_v85) S1x128.size cc5_transform_24 reads5_24 false true 1 stage5_24 sem5_24
    hrank5 hreads5_24 hinb5_24 nbuf5_24 (Memref.isWhole_whole _) hwx5_24 hstage5_24

abbrev win5_25 : Pipeline.Window sig grid5 :=
  Pipeline.Window.ofSpec (Memref.whole main_v86_0) S1024x128.size cc5_transform_25 reads5_25 true false 1 stage5_25 sem5_25
    hrank5 hreads5_25 hinb5_25 nbuf5_25 (Memref.isWhole_whole _) hwx5_25 hstage5_25

abbrev win5_26 : Pipeline.Window sig grid5 :=
  Pipeline.Window.ofSpec (Memref.whole main_v86_1) S1024x128.size cc5_transform_26 reads5_26 true false 1 stage5_26 sem5_26
    hrank5 hreads5_26 hinb5_26 nbuf5_26 (Memref.isWhole_whole _) hwx5_26 hstage5_26

abbrev win5_27 : Pipeline.Window sig grid5 :=
  Pipeline.Window.ofSpec (Memref.whole main_v86_2) S1024x128.size cc5_transform_27 reads5_27 true false 1 stage5_27 sem5_27
    hrank5 hreads5_27 hinb5_27 nbuf5_27 (Memref.isWhole_whole _) hwx5_27 hstage5_27

abbrev win5 : Fin 28 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | 16 => win5_16 | 17 => win5_17 | 18 => win5_18 | 19 => win5_19 | 20 => win5_20 | 21 => win5_21 | 22 => win5_22 | 23 => win5_23 | 24 => win5_24 | 25 => win5_25 | 26 => win5_26 | 27 => win5_27 | ⟨_ + 28, h⟩ => absurd h (Nat.not_lt.2 (Nat.le_add_left _ _))
abbrev spec5 : Fin 28 → Pipeline.WinSpec sig grid5.rank := fun w => (win5 w).toWinSpec

abbrev win6_0 : Pipeline.Window sig grid6 :=
  Pipeline.Window.ofSpec (Memref.whole main_v86_0) S1024x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg22) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg24) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v88) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg26) S128x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v89) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg28) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v90) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_arg30) S128x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v91) S1x128.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_arg32) S128x1.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v92) S1x1.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v93_0) S1024x1.size cc6_transform_13 reads6_13 true true 1 stage6_13 sem6_13
    hrank6 hreads6_13 hinb6_13 nbuf6_13 (Memref.isWhole_whole _) hwx6_13 hstage6_13

abbrev win6_14 : Pipeline.Window sig grid6 :=
  Pipeline.Window.ofSpec (Memref.whole main_v93_1) S1024x1.size cc6_transform_14 reads6_14 true true 1 stage6_14 sem6_14
    hrank6 hreads6_14 hinb6_14 nbuf6_14 (Memref.isWhole_whole _) hwx6_14 hstage6_14

abbrev win6 : Fin 15 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | ⟨_ + 15, h⟩ => absurd h (Nat.not_lt.2 (Nat.le_add_left _ _))
abbrev spec6 : Fin 15 → Pipeline.WinSpec sig grid6.rank := fun w => (win6 w).toWinSpec

class Facts : Prop extends Facts₀ where

variable [Facts]
-- ==== ReferenceIdeal.lean ====
abbrev S64512x32 : Shape := ⟨2, ![64512, 32]⟩
abbrev S64512x1000 : Shape := ⟨2, ![64512, 1000]⟩
abbrev S64512x4x64 : Shape := ⟨3, ![64512, 4, 64]⟩
abbrev S64512 : Shape := ⟨1, ![64512]⟩
abbrev S32x128 : Shape := ⟨2, ![32, 128]⟩
abbrev S128 : Shape := ⟨1, ![128]⟩
abbrev S1000x128 : Shape := ⟨2, ![1000, 128]⟩
abbrev S64x128 : Shape := ⟨2, ![64, 128]⟩
abbrev S1408x512 : Shape := ⟨2, ![1408, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S64512x128 : Shape := ⟨2, ![64512, 128]⟩
abbrev S1x128 : Shape := ⟨2, ![1, 128]⟩
abbrev S64512x1 : Shape := ⟨2, ![64512, 1]⟩
abbrev S64512x4x128 : Shape := ⟨3, ![64512, 4, 128]⟩
abbrev S1x1x128 : Shape := ⟨3, ![1, 1, 128]⟩
abbrev S_ : Shape := ⟨0, ![]⟩
abbrev S32768x128 : Shape := ⟨2, ![32768, 128]⟩
abbrev S32768x1408 : Shape := ⟨2, ![32768, 1408]⟩
abbrev S32768x512 : Shape := ⟨2, ![32768, 512]⟩
abbrev S1x512 : Shape := ⟨2, ![1, 512]⟩
abbrev S32768x256 : Shape := ⟨2, ![32768, 256]⟩
abbrev S1x256 : Shape := ⟨2, ![1, 256]⟩
abbrev S1024x16x2x128 : Shape := ⟨4, ![1024, 16, 2, 128]⟩
abbrev S16384 : Shape := ⟨1, ![16384]⟩
abbrev S1024x16x1 : Shape := ⟨3, ![1024, 16, 1]⟩
abbrev S1024x16x1x128 : Shape := ⟨4, ![1024, 16, 1, 128]⟩
abbrev S1024x16x128 : Shape := ⟨3, ![1024, 16, 128]⟩
abbrev S16384x128 : Shape := ⟨2, ![16384, 128]⟩
abbrev S16384x1408 : Shape := ⟨2, ![16384, 1408]⟩
abbrev S16384x512 : Shape := ⟨2, ![16384, 512]⟩
abbrev S16384x256 : Shape := ⟨2, ![16384, 256]⟩
abbrev S1024x8x2x128 : Shape := ⟨4, ![1024, 8, 2, 128]⟩
abbrev S8192 : Shape := ⟨1, ![8192]⟩
abbrev S1024x8x1 : Shape := ⟨3, ![1024, 8, 1]⟩
abbrev S1024x8x1x128 : Shape := ⟨4, ![1024, 8, 1, 128]⟩
abbrev S1024x8x128 : Shape := ⟨3, ![1024, 8, 128]⟩
abbrev S8192x128 : Shape := ⟨2, ![8192, 128]⟩
abbrev S8192x1408 : Shape := ⟨2, ![8192, 1408]⟩
abbrev S8192x512 : Shape := ⟨2, ![8192, 512]⟩
abbrev S8192x256 : Shape := ⟨2, ![8192, 256]⟩
abbrev S1024x4x2x128 : Shape := ⟨4, ![1024, 4, 2, 128]⟩
abbrev S4096 : Shape := ⟨1, ![4096]⟩
abbrev S1024x4x1 : Shape := ⟨3, ![1024, 4, 1]⟩
abbrev S1024x4x1x128 : Shape := ⟨4, ![1024, 4, 1, 128]⟩
abbrev S1024x4x128 : Shape := ⟨3, ![1024, 4, 128]⟩
abbrev S4096x128 : Shape := ⟨2, ![4096, 128]⟩
abbrev S4096x1408 : Shape := ⟨2, ![4096, 1408]⟩
abbrev S4096x512 : Shape := ⟨2, ![4096, 512]⟩
abbrev S4096x256 : Shape := ⟨2, ![4096, 256]⟩
abbrev S1024x2x2x128 : Shape := ⟨4, ![1024, 2, 2, 128]⟩
abbrev S2048 : Shape := ⟨1, ![2048]⟩
abbrev S1024x2x1 : Shape := ⟨3, ![1024, 2, 1]⟩
abbrev S1024x2x1x128 : Shape := ⟨4, ![1024, 2, 1, 128]⟩
abbrev S1024x2x128 : Shape := ⟨3, ![1024, 2, 128]⟩
abbrev S2048x128 : Shape := ⟨2, ![2048, 128]⟩
abbrev S2048x1408 : Shape := ⟨2, ![2048, 1408]⟩
abbrev S2048x512 : Shape := ⟨2, ![2048, 512]⟩
abbrev S2048x256 : Shape := ⟨2, ![2048, 256]⟩
abbrev S1024x1x2x128 : Shape := ⟨4, ![1024, 1, 2, 128]⟩
abbrev S1024 : Shape := ⟨1, ![1024]⟩
abbrev S1024x1x1 : Shape := ⟨3, ![1024, 1, 1]⟩
abbrev S1024x1x1x128 : Shape := ⟨4, ![1024, 1, 1, 128]⟩
abbrev S1024x1x128 : Shape := ⟨3, ![1024, 1, 128]⟩
abbrev S1024x128 : Shape := ⟨2, ![1024, 128]⟩
abbrev S1024x1408 : Shape := ⟨2, ![1024, 1408]⟩
abbrev S1024x512 : Shape := ⟨2, ![1024, 512]⟩
abbrev S1024x256 : Shape := ⟨2, ![1024, 256]⟩
abbrev S1024x1 : Shape := ⟨2, ![1024, 1]⟩
abbrev S1x1 : Shape := ⟨2, ![1, 1]⟩

abbrev nBuf : Space → Nat
  | .hbm => 464
  | .vmem => 0
  | .smem => 0
  | _ => 0

abbrev hbmTy0_0 (i : Nat) : BufTy := match i % 128 with
  | 0 => ⟨S64512x32, .f32⟩
  | 1 => ⟨S64512x32, .f32⟩
  | 2 => ⟨S64512x1000, .f32⟩
  | 3 => ⟨S64512x4x64, .f32⟩
  | 4 => ⟨S64512x4x64, .f32⟩
  | 5 => ⟨S64512, .f32⟩
  | 6 => ⟨S64512, .i32⟩
  | 7 => ⟨S64512, .i32⟩
  | 8 => ⟨S32x128, .f32⟩
  | 9 => ⟨S128, .f32⟩
  | 10 => ⟨S32x128, .f32⟩
  | 11 => ⟨S128, .f32⟩
  | 12 => ⟨S1000x128, .f32⟩
  | 13 => ⟨S128, .f32⟩
  | 14 => ⟨S64x128, .f32⟩
  | 15 => ⟨S128, .f32⟩
  | 16 => ⟨S1408x512, .f32⟩
  | 17 => ⟨S512, .f32⟩
  | 18 => ⟨S512x256, .f32⟩
  | 19 => ⟨S256, .f32⟩
  | 20 => ⟨S256x128, .f32⟩
  | 21 => ⟨S128, .f32⟩
  | 22 => ⟨S128x128, .f32⟩
  | 23 => ⟨S128, .f32⟩
  | 24 => ⟨S128x128, .f32⟩
  | 25 => ⟨S128, .f32⟩
  | 26 => ⟨S128x1, .f32⟩
  | 27 => ⟨S1, .f32⟩
  | 28 => ⟨S128x128, .f32⟩
  | 29 => ⟨S128, .f32⟩
  | 30 => ⟨S128x128, .f32⟩
  | 31 => ⟨S128, .f32⟩
  | 32 => ⟨S128x1, .f32⟩
  | 33 => ⟨S1, .f32⟩
  | 34 => ⟨S64512x128, .f32⟩
  | 35 => ⟨S1x128, .f32⟩
  | 36 => ⟨S64512x128, .f32⟩
  | 37 => ⟨S64512x128, .f32⟩
  | 38 => ⟨S64512x128, .f32⟩
  | 39 => ⟨S1x128, .f32⟩
  | 40 => ⟨S64512x128, .f32⟩
  | 41 => ⟨S64512x128, .f32⟩
  | 42 => ⟨S64512x128, .f32⟩
  | 43 => ⟨S1x128, .f32⟩
  | 44 => ⟨S64512x128, .f32⟩
  | 45 => ⟨S64512x128, .f32⟩
  | 46 => ⟨S64512x1, .f32⟩
  | 47 => ⟨S64512x128, .f32⟩
  | 48 => ⟨S64512x128, .f32⟩
  | 49 => ⟨S64512x4x128, .f32⟩
  | 50 => ⟨S1x1x128, .f32⟩
  | 51 => ⟨S64512x4x128, .f32⟩
  | 52 => ⟨S64512x4x128, .f32⟩
  | 53 => ⟨S_, .f32⟩
  | 54 => ⟨S64512x128, .f32⟩
  | 55 => ⟨S64512x4x128, .f32⟩
  | 56 => ⟨S1x1x128, .f32⟩
  | 57 => ⟨S64512x4x128, .f32⟩
  | 58 => ⟨S64512x4x128, .f32⟩
  | 59 => ⟨S_, .f32⟩
  | 60 => ⟨S64512x128, .f32⟩
  | 61 => ⟨S64512, .f32⟩
  | 62 => ⟨S64512, .f32⟩
  | 63 => ⟨S_, .f32⟩
  | 64 => ⟨S32768x128, .f32⟩
  | 65 => ⟨S32768x128, .f32⟩
  | 66 => ⟨S32768x128, .f32⟩
  | 67 => ⟨S32768x128, .f32⟩
  | 68 => ⟨S32768x128, .f32⟩
  | 69 => ⟨S32768x128, .f32⟩
  | 70 => ⟨S32768x1408, .f32⟩
  | 71 => ⟨S32768x512, .f32⟩
  | 72 => ⟨S1x512, .f32⟩
  | 73 => ⟨S32768x512, .f32⟩
  | 74 => ⟨S32768x512, .f32⟩
  | 75 => ⟨S_, .f32⟩
  | 76 => ⟨S32768x512, .f32⟩
  | 77 => ⟨S32768x512, .f32⟩
  | 78 => ⟨S32768x256, .f32⟩
  | 79 => ⟨S1x256, .f32⟩
  | 80 => ⟨S32768x256, .f32⟩
  | 81 => ⟨S32768x256, .f32⟩
  | 82 => ⟨S_, .f32⟩
  | 83 => ⟨S32768x256, .f32⟩
  | 84 => ⟨S32768x256, .f32⟩
  | 85 => ⟨S32768x128, .f32⟩
  | 86 => ⟨S1x128, .f32⟩
  | 87 => ⟨S32768x128, .f32⟩
  | 88 => ⟨S32768x128, .f32⟩
  | 89 => ⟨S_, .f32⟩
  | 90 => ⟨S32768x128, .f32⟩
  | 91 => ⟨S32768x128, .f32⟩
  | 92 => ⟨S1024x16x2x128, .f32⟩
  | 93 => ⟨S1024x16x2x128, .f32⟩
  | 94 => ⟨S1024x16x2x128, .f32⟩
  | 95 => ⟨S16384, .f32⟩
  | 96 => ⟨S1024x16x1, .f32⟩
  | 97 => ⟨S16384, .f32⟩
  | 98 => ⟨S1024x16x1, .f32⟩
  | 99 => ⟨S1024x16x1x128, .f32⟩
  | 100 => ⟨S1024x16x128, .f32⟩
  | 101 => ⟨S1024x16x128, .f32⟩
  | 102 => ⟨S1024x16x128, .f32⟩
  | 103 => ⟨S16384x128, .f32⟩
  | 104 => ⟨S1024x16x1x128, .f32⟩
  | 105 => ⟨S1024x16x128, .f32⟩
  | 106 => ⟨S1024x16x128, .f32⟩
  | 107 => ⟨S1024x16x128, .f32⟩
  | 108 => ⟨S16384x128, .f32⟩
  | 109 => ⟨S1024x16x1x128, .f32⟩
  | 110 => ⟨S1024x16x128, .f32⟩
  | 111 => ⟨S1024x16x128, .f32⟩
  | 112 => ⟨S1024x16x128, .f32⟩
  | 113 => ⟨S16384x128, .f32⟩
  | 114 => ⟨S1024x16x1x128, .f32⟩
  | 115 => ⟨S1024x16x128, .f32⟩
  | 116 => ⟨S1024x16x128, .f32⟩
  | 117 => ⟨S1024x16x128, .f32⟩
  | 118 => ⟨S16384x128, .f32⟩
  | 119 => ⟨S1024x16x1x128, .f32⟩
  | 120 => ⟨S1024x16x128, .f32⟩
  | 121 => ⟨S1024x16x128, .f32⟩
  | 122 => ⟨S1024x16x128, .f32⟩
  | 123 => ⟨S16384x128, .f32⟩
  | 124 => ⟨S1024x16x1x128, .f32⟩
  | 125 => ⟨S1024x16x128, .f32⟩
  | 126 => ⟨S1024x16x128, .f32⟩
  | 127 => ⟨S1024x16x128, .f32⟩
  | _ => ⟨S64512x32, .f32⟩

abbrev hbmTy0_1 (i : Nat) : BufTy := match i % 128 with
  | 0 => ⟨S16384x128, .f32⟩
  | 1 => ⟨S16384x128, .f32⟩
  | 2 => ⟨S16384x128, .f32⟩
  | 3 => ⟨S16384x128, .f32⟩
  | 4 => ⟨S16384x128, .f32⟩
  | 5 => ⟨S16384x128, .f32⟩
  | 6 => ⟨S16384x1408, .f32⟩
  | 7 => ⟨S16384x512, .f32⟩
  | 8 => ⟨S1x512, .f32⟩
  | 9 => ⟨S16384x512, .f32⟩
  | 10 => ⟨S16384x512, .f32⟩
  | 11 => ⟨S_, .f32⟩
  | 12 => ⟨S16384x512, .f32⟩
  | 13 => ⟨S16384x512, .f32⟩
  | 14 => ⟨S16384x256, .f32⟩
  | 15 => ⟨S1x256, .f32⟩
  | 16 => ⟨S16384x256, .f32⟩
  | 17 => ⟨S16384x256, .f32⟩
  | 18 => ⟨S_, .f32⟩
  | 19 => ⟨S16384x256, .f32⟩
  | 20 => ⟨S16384x256, .f32⟩
  | 21 => ⟨S16384x128, .f32⟩
  | 22 => ⟨S1x128, .f32⟩
  | 23 => ⟨S16384x128, .f32⟩
  | 24 => ⟨S16384x128, .f32⟩
  | 25 => ⟨S_, .f32⟩
  | 26 => ⟨S16384x128, .f32⟩
  | 27 => ⟨S16384x128, .f32⟩
  | 28 => ⟨S1024x8x2x128, .f32⟩
  | 29 => ⟨S1024x8x2x128, .f32⟩
  | 30 => ⟨S1024x8x2x128, .f32⟩
  | 31 => ⟨S8192, .f32⟩
  | 32 => ⟨S1024x8x1, .f32⟩
  | 33 => ⟨S8192, .f32⟩
  | 34 => ⟨S1024x8x1, .f32⟩
  | 35 => ⟨S1024x8x1x128, .f32⟩
  | 36 => ⟨S1024x8x128, .f32⟩
  | 37 => ⟨S1024x8x128, .f32⟩
  | 38 => ⟨S1024x8x128, .f32⟩
  | 39 => ⟨S8192x128, .f32⟩
  | 40 => ⟨S1024x8x1x128, .f32⟩
  | 41 => ⟨S1024x8x128, .f32⟩
  | 42 => ⟨S1024x8x128, .f32⟩
  | 43 => ⟨S1024x8x128, .f32⟩
  | 44 => ⟨S8192x128, .f32⟩
  | 45 => ⟨S1024x8x1x128, .f32⟩
  | 46 => ⟨S1024x8x128, .f32⟩
  | 47 => ⟨S1024x8x128, .f32⟩
  | 48 => ⟨S1024x8x128, .f32⟩
  | 49 => ⟨S8192x128, .f32⟩
  | 50 => ⟨S1024x8x1x128, .f32⟩
  | 51 => ⟨S1024x8x128, .f32⟩
  | 52 => ⟨S1024x8x128, .f32⟩
  | 53 => ⟨S1024x8x128, .f32⟩
  | 54 => ⟨S8192x128, .f32⟩
  | 55 => ⟨S1024x8x1x128, .f32⟩
  | 56 => ⟨S1024x8x128, .f32⟩
  | 57 => ⟨S1024x8x128, .f32⟩
  | 58 => ⟨S1024x8x128, .f32⟩
  | 59 => ⟨S8192x128, .f32⟩
  | 60 => ⟨S1024x8x1x128, .f32⟩
  | 61 => ⟨S1024x8x128, .f32⟩
  | 62 => ⟨S1024x8x128, .f32⟩
  | 63 => ⟨S1024x8x128, .f32⟩
  | 64 => ⟨S8192x128, .f32⟩
  | 65 => ⟨S8192x128, .f32⟩
  | 66 => ⟨S8192x128, .f32⟩
  | 67 => ⟨S8192x128, .f32⟩
  | 68 => ⟨S8192x128, .f32⟩
  | 69 => ⟨S8192x128, .f32⟩
  | 70 => ⟨S8192x1408, .f32⟩
  | 71 => ⟨S8192x512, .f32⟩
  | 72 => ⟨S1x512, .f32⟩
  | 73 => ⟨S8192x512, .f32⟩
  | 74 => ⟨S8192x512, .f32⟩
  | 75 => ⟨S_, .f32⟩
  | 76 => ⟨S8192x512, .f32⟩
  | 77 => ⟨S8192x512, .f32⟩
  | 78 => ⟨S8192x256, .f32⟩
  | 79 => ⟨S1x256, .f32⟩
  | 80 => ⟨S8192x256, .f32⟩
  | 81 => ⟨S8192x256, .f32⟩
  | 82 => ⟨S_, .f32⟩
  | 83 => ⟨S8192x256, .f32⟩
  | 84 => ⟨S8192x256, .f32⟩
  | 85 => ⟨S8192x128, .f32⟩
  | 86 => ⟨S1x128, .f32⟩
  | 87 => ⟨S8192x128, .f32⟩
  | 88 => ⟨S8192x128, .f32⟩
  | 89 => ⟨S_, .f32⟩
  | 90 => ⟨S8192x128, .f32⟩
  | 91 => ⟨S8192x128, .f32⟩
  | 92 => ⟨S1024x4x2x128, .f32⟩
  | 93 => ⟨S1024x4x2x128, .f32⟩
  | 94 => ⟨S1024x4x2x128, .f32⟩
  | 95 => ⟨S4096, .f32⟩
  | 96 => ⟨S1024x4x1, .f32⟩
  | 97 => ⟨S4096, .f32⟩
  | 98 => ⟨S1024x4x1, .f32⟩
  | 99 => ⟨S1024x4x1x128, .f32⟩
  | 100 => ⟨S1024x4x128, .f32⟩
  | 101 => ⟨S1024x4x128, .f32⟩
  | 102 => ⟨S1024x4x128, .f32⟩
  | 103 => ⟨S4096x128, .f32⟩
  | 104 => ⟨S1024x4x1x128, .f32⟩
  | 105 => ⟨S1024x4x128, .f32⟩
  | 106 => ⟨S1024x4x128, .f32⟩
  | 107 => ⟨S1024x4x128, .f32⟩
  | 108 => ⟨S4096x128, .f32⟩
  | 109 => ⟨S1024x4x1x128, .f32⟩
  | 110 => ⟨S1024x4x128, .f32⟩
  | 111 => ⟨S1024x4x128, .f32⟩
  | 112 => ⟨S1024x4x128, .f32⟩
  | 113 => ⟨S4096x128, .f32⟩
  | 114 => ⟨S1024x4x1x128, .f32⟩
  | 115 => ⟨S1024x4x128, .f32⟩
  | 116 => ⟨S1024x4x128, .f32⟩
  | 117 => ⟨S1024x4x128, .f32⟩
  | 118 => ⟨S4096x128, .f32⟩
  | 119 => ⟨S1024x4x1x128, .f32⟩
  | 120 => ⟨S1024x4x128, .f32⟩
  | 121 => ⟨S1024x4x128, .f32⟩
  | 122 => ⟨S1024x4x128, .f32⟩
  | 123 => ⟨S4096x128, .f32⟩
  | 124 => ⟨S1024x4x1x128, .f32⟩
  | 125 => ⟨S1024x4x128, .f32⟩
  | 126 => ⟨S1024x4x128, .f32⟩
  | 127 => ⟨S1024x4x128, .f32⟩
  | _ => ⟨S64512x32, .f32⟩

abbrev hbmTy0_2 (i : Nat) : BufTy := match i % 128 with
  | 0 => ⟨S4096x128, .f32⟩
  | 1 => ⟨S4096x128, .f32⟩
  | 2 => ⟨S4096x128, .f32⟩
  | 3 => ⟨S4096x128, .f32⟩
  | 4 => ⟨S4096x128, .f32⟩
  | 5 => ⟨S4096x128, .f32⟩
  | 6 => ⟨S4096x1408, .f32⟩
  | 7 => ⟨S4096x512, .f32⟩
  | 8 => ⟨S1x512, .f32⟩
  | 9 => ⟨S4096x512, .f32⟩
  | 10 => ⟨S4096x512, .f32⟩
  | 11 => ⟨S_, .f32⟩
  | 12 => ⟨S4096x512, .f32⟩
  | 13 => ⟨S4096x512, .f32⟩
  | 14 => ⟨S4096x256, .f32⟩
  | 15 => ⟨S1x256, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S4096x128, .f32⟩
  | 22 => ⟨S1x128, .f32⟩
  | 23 => ⟨S4096x128, .f32⟩
  | 24 => ⟨S4096x128, .f32⟩
  | 25 => ⟨S_, .f32⟩
  | 26 => ⟨S4096x128, .f32⟩
  | 27 => ⟨S4096x128, .f32⟩
  | 28 => ⟨S1024x2x2x128, .f32⟩
  | 29 => ⟨S1024x2x2x128, .f32⟩
  | 30 => ⟨S1024x2x2x128, .f32⟩
  | 31 => ⟨S2048, .f32⟩
  | 32 => ⟨S1024x2x1, .f32⟩
  | 33 => ⟨S2048, .f32⟩
  | 34 => ⟨S1024x2x1, .f32⟩
  | 35 => ⟨S1024x2x1x128, .f32⟩
  | 36 => ⟨S1024x2x128, .f32⟩
  | 37 => ⟨S1024x2x128, .f32⟩
  | 38 => ⟨S1024x2x128, .f32⟩
  | 39 => ⟨S2048x128, .f32⟩
  | 40 => ⟨S1024x2x1x128, .f32⟩
  | 41 => ⟨S1024x2x128, .f32⟩
  | 42 => ⟨S1024x2x128, .f32⟩
  | 43 => ⟨S1024x2x128, .f32⟩
  | 44 => ⟨S2048x128, .f32⟩
  | 45 => ⟨S1024x2x1x128, .f32⟩
  | 46 => ⟨S1024x2x128, .f32⟩
  | 47 => ⟨S1024x2x128, .f32⟩
  | 48 => ⟨S1024x2x128, .f32⟩
  | 49 => ⟨S2048x128, .f32⟩
  | 50 => ⟨S1024x2x1x128, .f32⟩
  | 51 => ⟨S1024x2x128, .f32⟩
  | 52 => ⟨S1024x2x128, .f32⟩
  | 53 => ⟨S1024x2x128, .f32⟩
  | 54 => ⟨S2048x128, .f32⟩
  | 55 => ⟨S1024x2x1x128, .f32⟩
  | 56 => ⟨S1024x2x128, .f32⟩
  | 57 => ⟨S1024x2x128, .f32⟩
  | 58 => ⟨S1024x2x128, .f32⟩
  | 59 => ⟨S2048x128, .f32⟩
  | 60 => ⟨S1024x2x1x128, .f32⟩
  | 61 => ⟨S1024x2x128, .f32⟩
  | 62 => ⟨S1024x2x128, .f32⟩
  | 63 => ⟨S1024x2x128, .f32⟩
  | 64 => ⟨S2048x128, .f32⟩
  | 65 => ⟨S2048x128, .f32⟩
  | 66 => ⟨S2048x128, .f32⟩
  | 67 => ⟨S2048x128, .f32⟩
  | 68 => ⟨S2048x128, .f32⟩
  | 69 => ⟨S2048x128, .f32⟩
  | 70 => ⟨S2048x1408, .f32⟩
  | 71 => ⟨S2048x512, .f32⟩
  | 72 => ⟨S1x512, .f32⟩
  | 73 => ⟨S2048x512, .f32⟩
  | 74 => ⟨S2048x512, .f32⟩
  | 75 => ⟨S_, .f32⟩
  | 76 => ⟨S2048x512, .f32⟩
  | 77 => ⟨S2048x512, .f32⟩
  | 78 => ⟨S2048x256, .f32⟩
  | 79 => ⟨S1x256, .f32⟩
  | 80 => ⟨S2048x256, .f32⟩
  | 81 => ⟨S2048x256, .f32⟩
  | 82 => ⟨S_, .f32⟩
  | 83 => ⟨S2048x256, .f32⟩
  | 84 => ⟨S2048x256, .f32⟩
  | 85 => ⟨S2048x128, .f32⟩
  | 86 => ⟨S1x128, .f32⟩
  | 87 => ⟨S2048x128, .f32⟩
  | 88 => ⟨S2048x128, .f32⟩
  | 89 => ⟨S_, .f32⟩
  | 90 => ⟨S2048x128, .f32⟩
  | 91 => ⟨S2048x128, .f32⟩
  | 92 => ⟨S1024x1x2x128, .f32⟩
  | 93 => ⟨S1024x1x2x128, .f32⟩
  | 94 => ⟨S1024x1x2x128, .f32⟩
  | 95 => ⟨S1024, .f32⟩
  | 96 => ⟨S1024x1x1, .f32⟩
  | 97 => ⟨S1024, .f32⟩
  | 98 => ⟨S1024x1x1, .f32⟩
  | 99 => ⟨S1024x1x1x128, .f32⟩
  | 100 => ⟨S1024x1x128, .f32⟩
  | 101 => ⟨S1024x1x128, .f32⟩
  | 102 => ⟨S1024x1x128, .f32⟩
  | 103 => ⟨S1024x128, .f32⟩
  | 104 => ⟨S1024x1x1x128, .f32⟩
  | 105 => ⟨S1024x1x128, .f32⟩
  | 106 => ⟨S1024x1x128, .f32⟩
  | 107 => ⟨S1024x1x128, .f32⟩
  | 108 => ⟨S1024x128, .f32⟩
  | 109 => ⟨S1024x1x1x128, .f32⟩
  | 110 => ⟨S1024x1x128, .f32⟩
  | 111 => ⟨S1024x1x128, .f32⟩
  | 112 => ⟨S1024x1x128, .f32⟩
  | 113 => ⟨S1024x128, .f32⟩
  | 114 => ⟨S1024x1x1x128, .f32⟩
  | 115 => ⟨S1024x1x128, .f32⟩
  | 116 => ⟨S1024x1x128, .f32⟩
  | 117 => ⟨S1024x1x128, .f32⟩
  | 118 => ⟨S1024x128, .f32⟩
  | 119 => ⟨S1024x1x1x128, .f32⟩
  | 120 => ⟨S1024x1x128, .f32⟩
  | 121 => ⟨S1024x1x128, .f32⟩
  | 122 => ⟨S1024x1x128, .f32⟩
  | 123 => ⟨S1024x128, .f32⟩
  | 124 => ⟨S1024x1x1x128, .f32⟩
  | 125 => ⟨S1024x1x128, .f32⟩
  | 126 => ⟨S1024x1x128, .f32⟩
  | 127 => ⟨S1024x1x128, .f32⟩
  | _ => ⟨S64512x32, .f32⟩

abbrev hbmTy0_3 (i : Nat) : BufTy := match i % 128 with
  | 0 => ⟨S1024x128, .f32⟩
  | 1 => ⟨S1024x128, .f32⟩
  | 2 => ⟨S1024x128, .f32⟩
  | 3 => ⟨S1024x128, .f32⟩
  | 4 => ⟨S1024x128, .f32⟩
  | 5 => ⟨S1024x128, .f32⟩
  | 6 => ⟨S1024x1408, .f32⟩
  | 7 => ⟨S1024x512, .f32⟩
  | 8 => ⟨S1x512, .f32⟩
  | 9 => ⟨S1024x512, .f32⟩
  | 10 => ⟨S1024x512, .f32⟩
  | 11 => ⟨S_, .f32⟩
  | 12 => ⟨S1024x512, .f32⟩
  | 13 => ⟨S1024x512, .f32⟩
  | 14 => ⟨S1024x256, .f32⟩
  | 15 => ⟨S1x256, .f32⟩
  | 16 => ⟨S1024x256, .f32⟩
  | 17 => ⟨S1024x256, .f32⟩
  | 18 => ⟨S_, .f32⟩
  | 19 => ⟨S1024x256, .f32⟩
  | 20 => ⟨S1024x256, .f32⟩
  | 21 => ⟨S1024x128, .f32⟩
  | 22 => ⟨S1x128, .f32⟩
  | 23 => ⟨S1024x128, .f32⟩
  | 24 => ⟨S1024x128, .f32⟩
  | 25 => ⟨S_, .f32⟩
  | 26 => ⟨S1024x128, .f32⟩
  | 27 => ⟨S1024x128, .f32⟩
  | 28 => ⟨S1024x128, .f32⟩
  | 29 => ⟨S1x128, .f32⟩
  | 30 => ⟨S1024x128, .f32⟩
  | 31 => ⟨S1024x128, .f32⟩
  | 32 => ⟨S_, .f32⟩
  | 33 => ⟨S1024x128, .f32⟩
  | 34 => ⟨S1024x128, .f32⟩
  | 35 => ⟨S1024x128, .f32⟩
  | 36 => ⟨S1x128, .f32⟩
  | 37 => ⟨S1024x128, .f32⟩
  | 38 => ⟨S1024x128, .f32⟩
  | 39 => ⟨S_, .f32⟩
  | 40 => ⟨S1024x128, .f32⟩
  | 41 => ⟨S1024x128, .f32⟩
  | 42 => ⟨S1024x1, .f32⟩
  | 43 => ⟨S1x1, .f32⟩
  | 44 => ⟨S1024x1, .f32⟩
  | 45 => ⟨S1024x1, .f32⟩
  | 46 => ⟨S1024x1, .f32⟩
  | 47 => ⟨S1024x1, .f32⟩
  | 48 => ⟨S_, .f32⟩
  | 49 => ⟨S1024x1, .f32⟩
  | 50 => ⟨S1024x1, .f32⟩
  | 51 => ⟨S_, .f32⟩
  | 52 => ⟨S1024x1, .f32⟩
  | 53 => ⟨S1024x1, .f32⟩
  | 54 => ⟨S1024x128, .f32⟩
  | 55 => ⟨S1x128, .f32⟩
  | 56 => ⟨S1024x128, .f32⟩
  | 57 => ⟨S1024x128, .f32⟩
  | 58 => ⟨S_, .f32⟩
  | 59 => ⟨S1024x128, .f32⟩
  | 60 => ⟨S1024x128, .f32⟩
  | 61 => ⟨S1024x128, .f32⟩
  | 62 => ⟨S1x128, .f32⟩
  | 63 => ⟨S1024x128, .f32⟩
  | 64 => ⟨S1024x128, .f32⟩
  | 65 => ⟨S_, .f32⟩
  | 66 => ⟨S1024x128, .f32⟩
  | 67 => ⟨S1024x128, .f32⟩
  | 68 => ⟨S1024x1, .f32⟩
  | 69 => ⟨S1x1, .f32⟩
  | 70 => ⟨S1024x1, .f32⟩
  | 71 => ⟨S1024x1, .f32⟩
  | 72 => ⟨S1024x1, .f32⟩
  | 73 => ⟨S1024x1, .f32⟩
  | 74 => ⟨S_, .f32⟩
  | 75 => ⟨S1024x1, .f32⟩
  | 76 => ⟨S1024x1, .f32⟩
  | 77 => ⟨S_, .f32⟩
  | 78 => ⟨S1024x1, .f32⟩
  | 79 => ⟨S1024x1, .f32⟩
  | _ => ⟨S64512x32, .f32⟩

abbrev hbmTy (i : Nat) : BufTy := match i / 128 with
  | 0 => hbmTy0_0 i
  | 1 => hbmTy0_1 i
  | 2 => hbmTy0_2 i
  | 3 => hbmTy0_3 i
  | _ => ⟨S64512x32, .f32⟩

abbrev bufTy : (tb : Table) → Fin (tcTables nBuf tb) → BufTy
  | .hbm, ⟨i, _⟩ => hbmTy i
  | _, _ => ⟨S64512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_0 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_1 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_call0_cst : Ref sig .tc := ⟨.hbm, 75, rfl⟩
abbrev main_call0_v0 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_call1_cst : Ref sig .tc := ⟨.hbm, 82, rfl⟩
abbrev main_call1_v0 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_call2_cst : Ref sig .tc := ⟨.hbm, 89, rfl⟩
abbrev main_call2_v0 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_call3_cst : Ref sig .tc := ⟨.hbm, 139, rfl⟩
abbrev main_call3_v0 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call4_cst : Ref sig .tc := ⟨.hbm, 146, rfl⟩
abbrev main_call4_v0 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_call5_cst : Ref sig .tc := ⟨.hbm, 153, rfl⟩
abbrev main_call5_v0 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_call6_cst : Ref sig .tc := ⟨.hbm, 203, rfl⟩
abbrev main_call6_v0 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_call7_cst : Ref sig .tc := ⟨.hbm, 210, rfl⟩
abbrev main_call7_v0 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_call8_cst : Ref sig .tc := ⟨.hbm, 217, rfl⟩
abbrev main_call8_v0 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_call9_cst : Ref sig .tc := ⟨.hbm, 267, rfl⟩
abbrev main_call9_v0 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_call10_cst : Ref sig .tc := ⟨.hbm, 274, rfl⟩
abbrev main_call10_v0 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_call11_cst : Ref sig .tc := ⟨.hbm, 281, rfl⟩
abbrev main_call11_v0 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_call12_cst : Ref sig .tc := ⟨.hbm, 331, rfl⟩
abbrev main_call12_v0 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_call13_cst : Ref sig .tc := ⟨.hbm, 338, rfl⟩
abbrev main_call13_v0 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_call14_cst : Ref sig .tc := ⟨.hbm, 345, rfl⟩
abbrev main_call14_v0 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_call15_cst : Ref sig .tc := ⟨.hbm, 395, rfl⟩
abbrev main_call15_v0 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_call16_cst : Ref sig .tc := ⟨.hbm, 402, rfl⟩
abbrev main_call16_v0 : Ref sig .tc := ⟨.hbm, 403, rfl⟩
abbrev main_v333 : Ref sig .tc := ⟨.hbm, 404, rfl⟩
abbrev main_v334 : Ref sig .tc := ⟨.hbm, 405, rfl⟩
abbrev main_v335 : Ref sig .tc := ⟨.hbm, 406, rfl⟩
abbrev main_v336 : Ref sig .tc := ⟨.hbm, 407, rfl⟩
abbrev main_v337 : Ref sig .tc := ⟨.hbm, 408, rfl⟩
abbrev main_call17_cst : Ref sig .tc := ⟨.hbm, 409, rfl⟩
abbrev main_call17_v0 : Ref sig .tc := ⟨.hbm, 410, rfl⟩
abbrev main_v338 : Ref sig .tc := ⟨.hbm, 411, rfl⟩
abbrev main_v339 : Ref sig .tc := ⟨.hbm, 412, rfl⟩
abbrev main_v340 : Ref sig .tc := ⟨.hbm, 413, rfl⟩
abbrev main_v341 : Ref sig .tc := ⟨.hbm, 414, rfl⟩
abbrev main_v342 : Ref sig .tc := ⟨.hbm, 415, rfl⟩
abbrev main_call18_cst : Ref sig .tc := ⟨.hbm, 416, rfl⟩
abbrev main_call18_v0 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_v347 : Ref sig .tc := ⟨.hbm, 422, rfl⟩
abbrev main_call19_cst : Ref sig .tc := ⟨.hbm, 423, rfl⟩
abbrev main_call19_v0 : Ref sig .tc := ⟨.hbm, 424, rfl⟩
abbrev main_v348 : Ref sig .tc := ⟨.hbm, 425, rfl⟩
abbrev main_v349 : Ref sig .tc := ⟨.hbm, 426, rfl⟩
abbrev main_v350 : Ref sig .tc := ⟨.hbm, 427, rfl⟩
abbrev main_v351 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_cst_2 : Ref sig .tc := ⟨.hbm, 432, rfl⟩
abbrev main_v355 : Ref sig .tc := ⟨.hbm, 433, rfl⟩
abbrev main_v356 : Ref sig .tc := ⟨.hbm, 434, rfl⟩
abbrev main_cst_3 : Ref sig .tc := ⟨.hbm, 435, rfl⟩
abbrev main_v357 : Ref sig .tc := ⟨.hbm, 436, rfl⟩
abbrev main_v358 : Ref sig .tc := ⟨.hbm, 437, rfl⟩
abbrev main_v359 : Ref sig .tc := ⟨.hbm, 438, rfl⟩
abbrev main_v360 : Ref sig .tc := ⟨.hbm, 439, rfl⟩
abbrev main_v361 : Ref sig .tc := ⟨.hbm, 440, rfl⟩
abbrev main_v362 : Ref sig .tc := ⟨.hbm, 441, rfl⟩
abbrev main_call20_cst : Ref sig .tc := ⟨.hbm, 442, rfl⟩
abbrev main_call20_v0 : Ref sig .tc := ⟨.hbm, 443, rfl⟩
abbrev main_v363 : Ref sig .tc := ⟨.hbm, 444, rfl⟩
abbrev main_v364 : Ref sig .tc := ⟨.hbm, 445, rfl⟩
abbrev main_v365 : Ref sig .tc := ⟨.hbm, 446, rfl⟩
abbrev main_v366 : Ref sig .tc := ⟨.hbm, 447, rfl⟩
abbrev main_v367 : Ref sig .tc := ⟨.hbm, 448, rfl⟩
abbrev main_call21_cst : Ref sig .tc := ⟨.hbm, 449, rfl⟩
abbrev main_call21_v0 : Ref sig .tc := ⟨.hbm, 450, rfl⟩
abbrev main_v368 : Ref sig .tc := ⟨.hbm, 451, rfl⟩
abbrev main_v369 : Ref sig .tc := ⟨.hbm, 452, rfl⟩
abbrev main_v370 : Ref sig .tc := ⟨.hbm, 453, rfl⟩
abbrev main_v371 : Ref sig .tc := ⟨.hbm, 454, rfl⟩
abbrev main_v372 : Ref sig .tc := ⟨.hbm, 455, rfl⟩
abbrev main_v373 : Ref sig .tc := ⟨.hbm, 456, rfl⟩
abbrev main_v374 : Ref sig .tc := ⟨.hbm, 457, rfl⟩
abbrev main_cst_4 : Ref sig .tc := ⟨.hbm, 458, rfl⟩
abbrev main_v375 : Ref sig .tc := ⟨.hbm, 459, rfl⟩
abbrev main_v376 : Ref sig .tc := ⟨.hbm, 460, rfl⟩
abbrev main_cst_5 : Ref sig .tc := ⟨.hbm, 461, rfl⟩
abbrev main_v377 : Ref sig .tc := ⟨.hbm, 462, rfl⟩
abbrev main_v378 : Ref sig .tc := ⟨.hbm, 463, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S64512x128_0_1 : S1x128.BroadcastsInDim S64512x128 (![0, 1] : Fin 2 → Fin S64512x128.rank)
  bcast_S64512_S64512x1_0 : S64512.BroadcastsInDim S64512x1 (![0] : Fin 1 → Fin S64512x1.rank)
  bcast_S64512x1_S64512x128_0_1 : S64512x1.BroadcastsInDim S64512x128 (![0, 1] : Fin 2 → Fin S64512x128.rank)
  bcast_S128_S1x1x128_2 : S128.BroadcastsInDim S1x1x128 (![2] : Fin 1 → Fin S1x1x128.rank)
  bcast_S1x1x128_S64512x4x128_0_1_2 : S1x1x128.BroadcastsInDim S64512x4x128 (![0, 1, 2] : Fin 3 → Fin S64512x4x128.rank)
  reducesTo_S64512x4x128_S64512x128_d1 : S64512x4x128.ReducesTo [1] S64512x128
  h_S_ : 0 < S_.numel
  bcast_S_S32768x128 : S_.BroadcastsInDim S32768x128 (![] : Fin 0 → Fin S32768x128.rank)
  slices_S64512x128_S32768x128_31744_0 : S64512x128.Slices ![31744, 0] S32768x128
  concatenates_S32768x128_S32768x128_S32768x128_S32768x128_S32768x128_S32768x128_S32768x128_S32768x128_S32768x128_S32768x128_S32768x128_S32768x1408_d1 : Shape.Concatenates [S32768x128, S32768x128, S32768x128, S32768x128, S32768x128, S32768x128, S32768x128, S32768x128, S32768x128, S32768x128, S32768x128] S32768x1408 1
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S1x128_S32768x128_0_1 : S1x128.BroadcastsInDim S32768x128 (![0, 1] : Fin 2 → Fin S32768x128.rank)
  shapeCasts_S32768x128_S1024x16x2x128 : S32768x128.ShapeCasts S1024x16x2x128
  slices_S64512_S16384_15360 : S64512.Slices ![15360] S16384
  shapeCasts_S16384_S1024x16x1 : S16384.ShapeCasts S1024x16x1
  slices_S1024x16x2x128_S1024x16x1x128_0_0_0_0 : S1024x16x2x128.Slices ![0, 0, 0, 0] S1024x16x1x128
  shapeCasts_S1024x16x1x128_S1024x16x128 : S1024x16x1x128.ShapeCasts S1024x16x128
  bcast_S1024x16x1_S1024x16x128_0_1_2 : S1024x16x1.BroadcastsInDim S1024x16x128 (![0, 1, 2] : Fin 3 → Fin S1024x16x128.rank)
  shapeCasts_S1024x16x128_S16384x128 : S1024x16x128.ShapeCasts S16384x128
  slices_S1024x16x2x128_S1024x16x1x128_0_0_1_0 : S1024x16x2x128.Slices ![0, 0, 1, 0] S1024x16x1x128
  slices_S64512x128_S16384x128_15360_0 : S64512x128.Slices ![15360, 0] S16384x128
  concatenates_S16384x128_S16384x128_S16384x128_S16384x128_S16384x128_S16384x128_S16384x128_S16384x128_S16384x128_S16384x128_S16384x128_S16384x1408_d1 : Shape.Concatenates [S16384x128, S16384x128, S16384x128, S16384x128, S16384x128, S16384x128, S16384x128, S16384x128, S16384x128, S16384x128, S16384x128] S16384x1408 1
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  shapeCasts_S16384x128_S1024x8x2x128 : S16384x128.ShapeCasts S1024x8x2x128
  slices_S64512_S8192_7168 : S64512.Slices ![7168] S8192
  shapeCasts_S8192_S1024x8x1 : S8192.ShapeCasts S1024x8x1
  slices_S1024x8x2x128_S1024x8x1x128_0_0_0_0 : S1024x8x2x128.Slices ![0, 0, 0, 0] S1024x8x1x128
  shapeCasts_S1024x8x1x128_S1024x8x128 : S1024x8x1x128.ShapeCasts S1024x8x128
  bcast_S1024x8x1_S1024x8x128_0_1_2 : S1024x8x1.BroadcastsInDim S1024x8x128 (![0, 1, 2] : Fin 3 → Fin S1024x8x128.rank)
  shapeCasts_S1024x8x128_S8192x128 : S1024x8x128.ShapeCasts S8192x128
  slices_S1024x8x2x128_S1024x8x1x128_0_0_1_0 : S1024x8x2x128.Slices ![0, 0, 1, 0] S1024x8x1x128
  slices_S64512x128_S8192x128_7168_0 : S64512x128.Slices ![7168, 0] S8192x128
  concatenates_S8192x128_S8192x128_S8192x128_S8192x128_S8192x128_S8192x128_S8192x128_S8192x128_S8192x128_S8192x128_S8192x128_S8192x1408_d1 : Shape.Concatenates [S8192x128, S8192x128, S8192x128, S8192x128, S8192x128, S8192x128, S8192x128, S8192x128, S8192x128, S8192x128, S8192x128] S8192x1408 1
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  shapeCasts_S8192x128_S1024x4x2x128 : S8192x128.ShapeCasts S1024x4x2x128
  slices_S64512_S4096_3072 : S64512.Slices ![3072] S4096
  shapeCasts_S4096_S1024x4x1 : S4096.ShapeCasts S1024x4x1
  slices_S1024x4x2x128_S1024x4x1x128_0_0_0_0 : S1024x4x2x128.Slices ![0, 0, 0, 0] S1024x4x1x128
  shapeCasts_S1024x4x1x128_S1024x4x128 : S1024x4x1x128.ShapeCasts S1024x4x128
  bcast_S1024x4x1_S1024x4x128_0_1_2 : S1024x4x1.BroadcastsInDim S1024x4x128 (![0, 1, 2] : Fin 3 → Fin S1024x4x128.rank)
  shapeCasts_S1024x4x128_S4096x128 : S1024x4x128.ShapeCasts S4096x128
  slices_S1024x4x2x128_S1024x4x1x128_0_0_1_0 : S1024x4x2x128.Slices ![0, 0, 1, 0] S1024x4x1x128
  slices_S64512x128_S4096x128_3072_0 : S64512x128.Slices ![3072, 0] S4096x128
  concatenates_S4096x128_S4096x128_S4096x128_S4096x128_S4096x128_S4096x128_S4096x128_S4096x128_S4096x128_S4096x128_S4096x128_S4096x1408_d1 : Shape.Concatenates [S4096x128, S4096x128, S4096x128, S4096x128, S4096x128, S4096x128, S4096x128, S4096x128, S4096x128, S4096x128, S4096x128] S4096x1408 1
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  shapeCasts_S4096x128_S1024x2x2x128 : S4096x128.ShapeCasts S1024x2x2x128
  slices_S64512_S2048_1024 : S64512.Slices ![1024] S2048
  shapeCasts_S2048_S1024x2x1 : S2048.ShapeCasts S1024x2x1
  slices_S1024x2x2x128_S1024x2x1x128_0_0_0_0 : S1024x2x2x128.Slices ![0, 0, 0, 0] S1024x2x1x128
  shapeCasts_S1024x2x1x128_S1024x2x128 : S1024x2x1x128.ShapeCasts S1024x2x128
  bcast_S1024x2x1_S1024x2x128_0_1_2 : S1024x2x1.BroadcastsInDim S1024x2x128 (![0, 1, 2] : Fin 3 → Fin S1024x2x128.rank)
  shapeCasts_S1024x2x128_S2048x128 : S1024x2x128.ShapeCasts S2048x128
  slices_S1024x2x2x128_S1024x2x1x128_0_0_1_0 : S1024x2x2x128.Slices ![0, 0, 1, 0] S1024x2x1x128
  slices_S64512x128_S2048x128_1024_0 : S64512x128.Slices ![1024, 0] S2048x128
  concatenates_S2048x128_S2048x128_S2048x128_S2048x128_S2048x128_S2048x128_S2048x128_S2048x128_S2048x128_S2048x128_S2048x128_S2048x1408_d1 : Shape.Concatenates [S2048x128, S2048x128, S2048x128, S2048x128, S2048x128, S2048x128, S2048x128, S2048x128, S2048x128, S2048x128, S2048x128] S2048x1408 1
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  shapeCasts_S2048x128_S1024x1x2x128 : S2048x128.ShapeCasts S1024x1x2x128
  slices_S64512_S1024_0 : S64512.Slices ![0] S1024
  shapeCasts_S1024_S1024x1x1 : S1024.ShapeCasts S1024x1x1
  slices_S1024x1x2x128_S1024x1x1x128_0_0_0_0 : S1024x1x2x128.Slices ![0, 0, 0, 0] S1024x1x1x128
  shapeCasts_S1024x1x1x128_S1024x1x128 : S1024x1x1x128.ShapeCasts S1024x1x128
  bcast_S1024x1x1_S1024x1x128_0_1_2 : S1024x1x1.BroadcastsInDim S1024x1x128 (![0, 1, 2] : Fin 3 → Fin S1024x1x128.rank)
  shapeCasts_S1024x1x128_S1024x128 : S1024x1x128.ShapeCasts S1024x128
  slices_S1024x1x2x128_S1024x1x1x128_0_0_1_0 : S1024x1x2x128.Slices ![0, 0, 1, 0] S1024x1x1x128
  slices_S64512x128_S1024x128_0_0 : S64512x128.Slices ![0, 0] S1024x128
  concatenates_S1024x128_S1024x128_S1024x128_S1024x128_S1024x128_S1024x128_S1024x128_S1024x128_S1024x128_S1024x128_S1024x128_S1024x1408_d1 : Shape.Concatenates [S1024x128, S1024x128, S1024x128, S1024x128, S1024x128, S1024x128, S1024x128, S1024x128, S1024x128, S1024x128, S1024x128] S1024x1408 1
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  dot_S64512x32_S32x128_S64512x128_1_0_0_1_n_n_wf : DotDims.WF S64512x32 S32x128 S64512x128 [1] [0] [0] [1] [] []
  dot_S64512x1000_S1000x128_S64512x128_1_0_0_1_n_n_wf : DotDims.WF S64512x1000 S1000x128 S64512x128 [1] [0] [0] [1] [] []
  dot_S64512x4x64_S64x128_S64512x4x128_2_0_01_1_n_n_wf : DotDims.WF S64512x4x64 S64x128 S64512x4x128 [2] [0] [0, 1] [1] [] []
  dot_S32768x1408_S1408x512_S32768x512_1_0_0_1_n_n_wf : DotDims.WF S32768x1408 S1408x512 S32768x512 [1] [0] [0] [1] [] []
  dot_S32768x512_S512x256_S32768x256_1_0_0_1_n_n_wf : DotDims.WF S32768x512 S512x256 S32768x256 [1] [0] [0] [1] [] []
  dot_S32768x256_S256x128_S32768x128_1_0_0_1_n_n_wf : DotDims.WF S32768x256 S256x128 S32768x128 [1] [0] [0] [1] [] []
  dot_S16384x1408_S1408x512_S16384x512_1_0_0_1_n_n_wf : DotDims.WF S16384x1408 S1408x512 S16384x512 [1] [0] [0] [1] [] []
  dot_S16384x512_S512x256_S16384x256_1_0_0_1_n_n_wf : DotDims.WF S16384x512 S512x256 S16384x256 [1] [0] [0] [1] [] []
  dot_S16384x256_S256x128_S16384x128_1_0_0_1_n_n_wf : DotDims.WF S16384x256 S256x128 S16384x128 [1] [0] [0] [1] [] []
  dot_S8192x1408_S1408x512_S8192x512_1_0_0_1_n_n_wf : DotDims.WF S8192x1408 S1408x512 S8192x512 [1] [0] [0] [1] [] []
  dot_S8192x512_S512x256_S8192x256_1_0_0_1_n_n_wf : DotDims.WF S8192x512 S512x256 S8192x256 [1] [0] [0] [1] [] []
  dot_S8192x256_S256x128_S8192x128_1_0_0_1_n_n_wf : DotDims.WF S8192x256 S256x128 S8192x128 [1] [0] [0] [1] [] []
  dot_S4096x1408_S1408x512_S4096x512_1_0_0_1_n_n_wf : DotDims.WF S4096x1408 S1408x512 S4096x512 [1] [0] [0] [1] [] []
  dot_S4096x512_S512x256_S4096x256_1_0_0_1_n_n_wf : DotDims.WF S4096x512 S512x256 S4096x256 [1] [0] [0] [1] [] []
  dot_S4096x256_S256x128_S4096x128_1_0_0_1_n_n_wf : DotDims.WF S4096x256 S256x128 S4096x128 [1] [0] [0] [1] [] []
  dot_S2048x1408_S1408x512_S2048x512_1_0_0_1_n_n_wf : DotDims.WF S2048x1408 S1408x512 S2048x512 [1] [0] [0] [1] [] []
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  dot_S1024x1408_S1408x512_S1024x512_1_0_0_1_n_n_wf : DotDims.WF S1024x1408 S1408x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []

variable [Facts₀]

def dot_S64512x32_S32x128_S64512x128_1_0_0_1_n_n : DotDims S64512x32 S32x128 S64512x128 where
  lhsContracting := [1]
  rhsContracting := [0]
  lhsNonContracting := [0]
  rhsNonContracting := [1]
  lhsBatch := []
  rhsBatch := []
  wf := dot_S64512x32_S32x128_S64512x128_1_0_0_1_n_n_wf
def dot_S64512x1000_S1000x128_S64512x128_1_0_0_1_n_n : DotDims S64512x1000 S1000x128 S64512x128 where
  lhsContracting := [1]
  rhsContracting := [0]
  lhsNonContracting := [0]
  rhsNonContracting := [1]
  lhsBatch := []
  rhsBatch := []
  wf := dot_S64512x1000_S1000x128_S64512x128_1_0_0_1_n_n_wf
def dot_S64512x4x64_S64x128_S64512x4x128_2_0_01_1_n_n : DotDims S64512x4x64 S64x128 S64512x4x128 where
  lhsContracting := [2]
  rhsContracting := [0]
  lhsNonContracting := [0, 1]
  rhsNonContracting := [1]
  lhsBatch := []
  rhsBatch := []
  wf := dot_S64512x4x64_S64x128_S64512x4x128_2_0_01_1_n_n_wf
def dot_S32768x1408_S1408x512_S32768x512_1_0_0_1_n_n : DotDims S32768x1408 S1408x512 S32768x512 where
  lhsContracting := [1]
  rhsContracting := [0]
  lhsNonContracting := [0]
  rhsNonContracting := [1]
  lhsBatch := []
  rhsBatch := []
  wf := dot_S32768x1408_S1408x512_S32768x512_1_0_0_1_n_n_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf
def dot_S16384x1408_S1408x512_S16384x512_1_0_0_1_n_n : DotDims S16384x1408 S1408x512 S16384x512 where
  lhsContracting := [1]
  rhsContracting := [0]
  lhsNonContracting := [0]
  rhsNonContracting := [1]
  lhsBatch := []
  rhsBatch := []
  wf := dot_S16384x1408_S1408x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S8192x1408_S1408x512_S8192x512_1_0_0_1_n_n : DotDims S8192x1408 S1408x512 S8192x512 where
  lhsContracting := [1]
  rhsContracting := [0]
  lhsNonContracting := [0]
  rhsNonContracting := [1]
  lhsBatch := []
  rhsBatch := []
  wf := dot_S8192x1408_S1408x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S4096x1408_S1408x512_S4096x512_1_0_0_1_n_n : DotDims S4096x1408 S1408x512 S4096x512 where
  lhsContracting := [1]
  rhsContracting := [0]
  lhsNonContracting := [0]
  rhsNonContracting := [1]
  lhsBatch := []
  rhsBatch := []
  wf := dot_S4096x1408_S1408x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S2048x1408_S1408x512_S2048x512_1_0_0_1_n_n : DotDims S2048x1408 S1408x512 S2048x512 where
  lhsContracting := [1]
  rhsContracting := [0]
  lhsNonContracting := [0]
  rhsNonContracting := [1]
  lhsBatch := []
  rhsBatch := []
  wf := dot_S2048x1408_S1408x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x1408_S1408x512_S1024x512_1_0_0_1_n_n : DotDims S1024x1408 S1408x512 S1024x512 where
  lhsContracting := [1]
  rhsContracting := [0]
  lhsNonContracting := [0]
  rhsNonContracting := [1]
  lhsBatch := []
  rhsBatch := []
  wf := dot_S1024x1408_S1408x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

class Facts : Prop extends Facts₀ where

variable [Facts]
-- ==== Proof.RefOps.lean ====
import proofs.«410031_j84061099917532_3_alg».proof.Proof.Gen.ReferenceIdeal
import Idealize.ShloMosaic.Lib.StableHlo.Run

noncomputable section

namespace Cert.ReferenceIdeal.StagedRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ binary main_arg0 main_arg8 main_v0 ((fun l r => Host.dotGeneral dot_S64512x32_S32x128_S64512x128_1_0_0_1_n_n none l r) : (⟨S64512x32, .f32⟩ : BufTy).Contents (Elt F) → (⟨S32x128, .f32⟩ : BufTy).Contents (Elt F) → (⟨S64512x128, .f32⟩ : BufTy).Contents (Elt F)),
    unary main_arg9 main_v1 (broadcastInDim S1x128 ![1] bcast_S128_S1x128_1 : (⟨S128, .f32⟩ : BufTy).Contents (Elt F) → (⟨S1x128, .f32⟩ : BufTy).Contents (Elt F)),
    unary main_v1 main_v2 (broadcastInDim S64512x128 ![0, 1] bcast_S1x128_S64512x128_0_1 : (⟨S1x128, .f32⟩ : BufTy).Contents (Elt F) → (⟨S64512x128, .f32⟩ : BufTy).Contents (Elt F)),
    binary main_v0 main_v2 main_v3 (addf : (⟨S64512x128, .f32⟩ : BufTy).Contents (Elt F) → (⟨S64512x128, .f32⟩ : BufTy).Contents (Elt F) → (⟨S64512x128, .f32⟩ : BufTy).Contents (Elt F)),
    binary main_arg1 main_arg10 main_v4 ((fun l r => Host.dotGeneral dot_S64512x32_S32x128_S64512x128_1_0_0_1_n_n none l r) : (⟨S64512x32, .f32⟩ : BufTy).Contents (Elt F) → (⟨S32x128, .f32⟩ : BufTy).Contents (Elt F) → (⟨S64512x128, .f32⟩ : BufTy).Contents (Elt F)),
    unary main_arg11 main_v5 (broadcastInDim S1x128 ![1] bcast_S128_S1x128_1 : (⟨S128, .f32⟩ : BufTy).Contents (Elt F) → (⟨S1x128, .f32⟩ : BufTy).Contents (Elt F)),
    unary main_v5 main_v6 (broadcastInDim S64512x128 ![0, 1] bcast_S1x128_S64512x128_0_1 : (⟨S1x128, .f32⟩ : BufTy).Contents (Elt F) → (⟨S64512x128, .f32⟩ : BufTy).Contents (Elt F)),
    binary main_v4 main_v6 main_v7 (addf : (⟨S64512x128, .f32⟩ : BufTy).Contents (Elt F) → (⟨S64512x128, .f32⟩ : BufTy).Contents (Elt F) → (⟨S64512x128, .f32⟩ : BufTy).Contents (Elt F)),
    binary main_arg2 main_arg12 main_v8 ((fun l r => Host.dotGeneral dot_S64512x1000_S1000x128_S64512x128_1_0_0_1_n_n none l r) : (⟨S64512x1000, .f32⟩ : BufTy).Contents (Elt F) → (⟨S1000x128, .f32⟩ : BufTy).Contents (Elt F) → (⟨S64512x128, .f32⟩ : BufTy).Contents (Elt F)),
    unary main_arg13 main_v9 (broadcastInDim S1x128 ![1] bcast_S128_S1x128_1 : (⟨S128, .f32⟩ : BufTy).Contents (Elt F) → (⟨S1x128, .f32⟩ : BufTy).Contents (Elt F)),
    unary main_v9 main_v10 (broadcastInDim S64512x128 ![0, 1] bcast_S1x128_S64512x128_0_1 : (⟨S1x128, .f32⟩ : BufTy).Contents (Elt F) → (⟨S64512x128, .f32⟩ : BufTy).Contents (Elt F)),
    binary main_v8 main_v10 main_v11 (addf : (⟨S64512x128, .f32⟩ : BufTy).Contents (Elt F) → (⟨S64512x128, .f32⟩ : BufTy).Contents (Elt F) → (⟨S64512x128, .f32⟩ : BufTy).Contents (Elt F)),
    unary main_arg5 main_v12 (broadcastInDim S64512x1 ![0] bcast_S64512_S64512x1_0 : (⟨S64512, .f32⟩ : BufTy).Contents (Elt F) → (⟨S64512x1, .f32⟩ : BufTy).Contents (Elt F)),
    unary main_v12 main_v13 (broadcastInDim S64512x128 ![0, 1] bcast_S64512x1_S64512x128_0_1 : (⟨S64512x1, .f32⟩ : BufTy).Contents (Elt F) → (⟨S64512x128, .f32⟩ : BufTy).Contents (Elt F)),
    binary main_v11 main_v13 main_v14 (mulf : (⟨S64512x128, .f32⟩ : BufTy).Contents (Elt F) → (⟨S64512x128, .f32⟩ : BufTy).Contents (Elt F) → (⟨S64512x128, .f32⟩ : BufTy).Contents (Elt F)),
    binary main_arg3 main_arg14 main_v15 ((fun l r => Host.dotGeneral dot_S64512x4x64_S64x128_S64512x4x128_2_0_01_1_n_n none l r) : (⟨S64512x4x64, .f32⟩ : BufTy).Contents (Elt F) → (⟨S64x128, .f32⟩ : BufTy).Contents (Elt F) → (⟨S64512x4x128, .f32⟩ : BufTy).Contents (Elt F)),
    unary main_arg15 main_v16 (broadcastInDim S1x1x128 ![2] bcast_S128_S1x1x128_2 : (⟨S128, .f32⟩ : BufTy).Contents (Elt F) → (⟨S1x1x128, .f32⟩ : BufTy).Contents (Elt F)),
    unary main_v16 main_v17 (broadcastInDim S64512x4x128 ![0, 1, 2] bcast_S1x1x128_S64512x4x128_0_1_2 : (⟨S1x1x128, .f32⟩ : BufTy).Contents (Elt F) → (⟨S64512x4x128, .f32⟩ : BufTy).Contents (Elt F)),
    binary main_v15 main_v17 main_v18 (addf : (⟨S64512x4x128, .f32⟩ : BufTy).Contents (Elt F) → (⟨S64512x4x128, .f32⟩ : BufTy).Contents (Elt F) → (⟨S64512x4x128, .f32⟩ : BufTy).Contents (Elt F)),
    nullary main_cst (constant S_ .f32 0x7F800000#32),
    binary main_v18 main_cst main_v19 ((fun x v => Host.reduce FloatOps.minimumf x v reducesTo_S64512x4x128_S64512x128_d1 h_S_) : (⟨S64512x4x128, .f32⟩ : BufTy).Contents (Elt F) → (⟨S_, .f32⟩ : BufTy).Contents (Elt F) → (⟨S64512x128, .f32⟩ : BufTy).Contents (Elt F)),
    binary main_arg4 main_arg14 main_v20 ((fun l r => Host.dotGeneral dot_S64512x4x64_S64x128_S64512x4x128_2_0_01_1_n_n none l r) : (⟨S64512x4x64, .f32⟩ : BufTy).Contents (Elt F) → (⟨S64x128, .f32⟩ : BufTy).Contents (Elt F) → (⟨S64512x4x128, .f32⟩ : BufTy).Contents (Elt F)),
    unary main_arg15 main_v21 (broadcastInDim S1x1x128 ![2] bcast_S128_S1x1x128_2 : (⟨S128, .f32⟩ : BufTy).Contents (Elt F) → (⟨S1x1x128, .f32⟩ : BufTy).Contents (Elt F)),
    unary main_v21 main_v22 (broadcastInDim S64512x4x128 ![0, 1, 2] bcast_S1x1x128_S64512x4x128_0_1_2 : (⟨S1x1x128, .f32⟩ : BufTy).Contents (Elt F) → (⟨S64512x4x128, .f32⟩ : BufTy).Contents (Elt F)),
    binary main_v20 main_v22 main_v23 (addf : (⟨S64512x4x128, .f32⟩ : BufTy).Contents (Elt F) → (⟨S64512x4x128, .f32⟩ : BufTy).Contents (Elt F) → (⟨S64512x4x128, .f32⟩ : BufTy).Contents (Elt F)),
    nullary main_cst_0 (constant S_ .f32 0x7F800000#32),
    binary main_v23 main_cst_0 main_v24 ((fun x v => Host.reduce FloatOps.minimumf x v reducesTo_S64512x4x128_S64512x128_d1 h_S_) : (⟨S64512x4x128, .f32⟩ : BufTy).Contents (Elt F) → (⟨S_, .f32⟩ : BufTy).Contents (Elt F) → (⟨S64512x128, .f32⟩ : BufTy).Contents (Elt F)),
    unary main_arg6 main_v25 (sitofp .f32 : (⟨S64512, .i32⟩ : BufTy).Contents (Elt F) → (⟨S64512, .f32⟩ : BufTy).Contents (Elt F)),
    unary main_arg7 main_v26 (sitofp .f32 : (⟨S64512, .i32⟩ : BufTy).Contents (Elt F) → (⟨S64512, .f32⟩ : BufTy).Contents (Elt F)) ]

abbrev ops1 : List (HloOp τ sig (Elt F)) :=
  [ nullary main_cst_1 (constant S_ .f32 0x00000000#32),
    unary main_cst_1 main_v27 (broadcastInDim S32768x128 ![] bcast_S_S32768x128 : (⟨S_, .f32⟩ : BufTy).Contents (Elt F) → (⟨S32768x128, .f32⟩ : BufTy).Contents (Elt F)),
    unary main_v3 main_v28 ((extractStridedSlice S32768x128 ![31744, 0] · slices_S64512x128_S32768x128_31744_0) : (⟨S64512x128, .f32⟩ : BufTy).Contents (Elt F) → (⟨S32768x128, .f32⟩ : BufTy).Contents (Elt F)),
    unary main_v7 main_v29 ((extractStridedSlice S32768x128 ![31744, 0] · slices_S64512x128_S32768x128_31744_0) : (⟨S64512x128, .f32⟩ : BufTy).Contents (Elt F) → (⟨S32768x128, .f32⟩ : BufTy).Contents (Elt F)),
    unary main_v19 main_v30 ((extractStridedSlice S32768x128 ![31744, 0] · slices_S64512x128_S32768x128_31744_0) : (⟨S64512x128, .f32⟩ : BufTy).Contents (Elt F) → (⟨S32768x128, .f32⟩ : BufTy).Contents (Elt F)),
    unary main_v24 main_v31 ((extractStridedSlice S32768x128 ![31744, 0] · slices_S64512x128_S32768x128_31744_0) : (⟨S64512x128, .f32⟩ : BufTy).Contents (Elt F) → (⟨S32768x128, .f32⟩ : BufTy).Contents (Elt F)),
    unary main_v14 main_v32 ((extractStridedSlice S32768x128 ![31744, 0] · slices_S64512x128_S32768x128_31744_0) : (⟨S64512x128, .f32⟩ : BufTy).Contents (Elt F) → (⟨S32768x128, .f32⟩ : BufTy).Contents (Elt F)),
    nary ![main_v28, main_v29, main_v30, main_v31, main_v32, main_v27, main_v27, main_v27, main_v27, main_v27, main_v27] main_v33 (fun u => concatenate S32768x1408 1 [⟨S32768x128, u 0⟩, ⟨S32768x128, u 1⟩, ⟨S32768x128, u 2⟩, ⟨S32768x128, u 3⟩, ⟨S32768x128, u 4⟩, ⟨S32768x128, u 5⟩, ⟨S32768x128, u 6⟩, ⟨S32768x128, u 7⟩, ⟨S32768x128, u 8⟩, ⟨S32768x128, u 9⟩, ⟨S32768x128, u 10⟩] concatenates_S32768x128_S32768x128_S32768x128_S32768x128_S32768x128_S32768x128_S32768x128_S32768x128_S32768x128_S32768x128_S32768x128_S32768x1408_d1),
    binary main_v33 main_arg16 main_v34 ((fun l r => Host.dotGeneral dot_S32768x1408_S1408x512_S32768x512_1_0_0_1_n_n none l r) : (⟨S32768x1408, .f32⟩ : BufTy).Contents (Elt F) → (⟨S1408x512, .f32⟩ : BufTy).Contents (Elt F) → (⟨S32768x512, .f32⟩ : BufTy).Contents (Elt F)),
    unary main_arg17 main_v35 (broadcastInDim S1x512 ![1] bcast_S512_S1x512_1 : (⟨S512, .f32⟩ : BufTy).Contents (Elt F) → (⟨S1x512, .f32⟩ : BufTy).Contents (Elt F)),
    unary main_v35 main_v36 (broadcastInDim S32768x512 ![0, 1] bcast_S1x512_S32768x512_0_1 : (⟨S1x512, .f32⟩ : BufTy).Contents (Elt F) → (⟨S32768x512, .f32⟩ : BufTy).Contents (Elt F)),
    binary main_v34 main_v36 main_v37 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x512, .f32⟩) main_call0_v0) (broadcastInDim S32768x512 ![] bcast_S_S32768x512),
    TRef.binary (TRef.of (T := ⟨S32768x512, .f32⟩) main_v37) (TRef.of (T := ⟨S32768x512, .f32⟩) main_call0_v0) (TRef.of (T := ⟨S32768x512, .f32⟩) main_v38) maximumf,
    binary main_v38 main_arg18 main_v39 ((fun l r => Host.dotGeneral dot_S32768x512_S512x256_S32768x256_1_0_0_1_n_n none l r) : (⟨S32768x512, .f32⟩ : BufTy).Contents (Elt F) → (⟨S512x256, .f32⟩ : BufTy).Contents (Elt F) → (⟨S32768x256, .f32⟩ : BufTy).Contents (Elt F)),
    unary main_arg19 main_v40 (broadcastInDim S1x256 ![1] bcast_S256_S1x256_1 : (⟨S256, .f32⟩ : BufTy).Contents (Elt F) → (⟨S1x256, .f32⟩ : BufTy).Contents (Elt F)),
    unary main_v40 main_v41 (broadcastInDim S32768x256 ![0, 1] bcast_S1x256_S32768x256_0_1 : (⟨S1x256, .f32⟩ : BufTy).Contents (Elt F) → (⟨S32768x256, .f32⟩ : BufTy).Contents (Elt F)),
    binary main_v39 main_v41 main_v42 (addf : (⟨S32768x256, .f32⟩ : BufTy).Contents (Elt F) → (⟨S32768x256, .f32⟩ : BufTy).Contents (Elt F) → (⟨S32768x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32768x256, .f32⟩) main_call1_v0) (broadcastInDim S32768x256 ![] bcast_S_S32768x256),
    TRef.binary (TRef.of (T := ⟨S32768x256, .f32⟩) main_v42) (TRef.of (T := ⟨S32768x256, .f32⟩) main_call1_v0) (TRef.of (T := ⟨S32768x256, .f32⟩) main_v43) maximumf,
    binary main_v43 main_arg20 main_v44 ((fun l r => Host.dotGeneral dot_S32768x256_S256x128_S32768x128_1_0_0_1_n_n none l r) : (⟨S32768x256, .f32⟩ : BufTy).Contents (Elt F) → (⟨S256x128, .f32⟩ : BufTy).Contents (Elt F) → (⟨S32768x128, .f32⟩ : BufTy).Contents (Elt F)),
    unary main_arg21 main_v45 (broadcastInDim S1x128 ![1] bcast_S128_S1x128_1 : (⟨S128, .f32⟩ : BufTy).Contents (Elt F) → (⟨S1x128, .f32⟩ : BufTy).Contents (Elt F)),
    unary main_v45 main_v46 (broadcastInDim S32768x128 ![0, 1] bcast_S1x128_S32768x128_0_1 : (⟨S1x128, .f32⟩ : BufTy).Contents (Elt F) → (⟨S32768x128, .f32⟩ : BufTy).Contents (Elt F)),
    binary main_v44 main_v46 main_v47 (addf : (⟨S32768x128, .f32⟩ : BufTy).Contents (Elt F) → (⟨S32768x128, .f32⟩ : BufTy).Contents (Elt F) → (⟨S32768x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x128, .f32⟩) main_call2_v0) (broadcastInDim S32768x128 ![] bcast_S_S32768x128),
    TRef.binary (TRef.of (T := ⟨S32768x128, .f32⟩) main_v47) (TRef.of (T := ⟨S32768x128, .f32⟩) main_call2_v0) (TRef.of (T := ⟨S32768x128, .f32⟩) main_v48) maximumf ]

abbrev ops2 : List (HloOp τ sig (Elt F)) :=
  [ reshape main_v48 main_v49 rfl shapeCasts_S32768x128_S1024x16x2x128,
    reshape main_v27 main_v50 rfl shapeCasts_S32768x128_S1024x16x2x128,
    reshape main_v27 main_v51 rfl shapeCasts_S32768x128_S1024x16x2x128,
    unary main_v25 main_v52 ((extractStridedSlice S16384 ![15360] · slices_S64512_S16384_15360) : (⟨S64512, .f32⟩ : BufTy).Contents (Elt F) → (⟨S16384, .f32⟩ : BufTy).Contents (Elt F)),
    reshape main_v52 main_v53 rfl shapeCasts_S16384_S1024x16x1,
    unary main_v26 main_v54 ((extractStridedSlice S16384 ![15360] · slices_S64512_S16384_15360) : (⟨S64512, .f32⟩ : BufTy).Contents (Elt F) → (⟨S16384, .f32⟩ : BufTy).Contents (Elt F)),
    reshape main_v54 main_v55 rfl shapeCasts_S16384_S1024x16x1,
    unary main_v49 main_v56 ((extractStridedSlice S1024x16x1x128 ![0, 0, 0, 0] · slices_S1024x16x2x128_S1024x16x1x128_0_0_0_0) : (⟨S1024x16x2x128, .f32⟩ : BufTy).Contents (Elt F) → (⟨S1024x16x1x128, .f32⟩ : BufTy).Contents (Elt F)),
    reshape main_v56 main_v57 rfl shapeCasts_S1024x16x1x128_S1024x16x128,
    unary main_v53 main_v58 (broadcastInDim S1024x16x128 ![0, 1, 2] bcast_S1024x16x1_S1024x16x128_0_1_2 : (⟨S1024x16x1, .f32⟩ : BufTy).Contents (Elt F) → (⟨S1024x16x128, .f32⟩ : BufTy).Contents (Elt F)),
    binary main_v57 main_v58 main_v59 (mulf : (⟨S1024x16x128, .f32⟩ : BufTy).Contents (Elt F) → (⟨S1024x16x128, .f32⟩ : BufTy).Contents (Elt F) → (⟨S1024x16x128, .f32⟩ : BufTy).Contents (Elt F)),
    reshape main_v59 main_v60 rfl shapeCasts_S1024x16x128_S16384x128,
    unary main_v50 main_v61 ((extractStridedSlice S1024x16x1x128 ![0, 0, 0, 0] · slices_S1024x16x2x128_S1024x16x1x128_0_0_0_0) : (⟨S1024x16x2x128, .f32⟩ : BufTy).Contents (Elt F) → (⟨S1024x16x1x128, .f32⟩ : BufTy).Contents (Elt F)),
    reshape main_v61 main_v62 rfl shapeCasts_S1024x16x1x128_S1024x16x128,
    unary main_v53 main_v63 (broadcastInDim S1024x16x128 ![0, 1, 2] bcast_S1024x16x1_S1024x16x128_0_1_2 : (⟨S1024x16x1, .f32⟩ : BufTy).Contents (Elt F) → (⟨S1024x16x128, .f32⟩ : BufTy).Contents (Elt F)),
    binary main_v62 main_v63 main_v64 (mulf : (⟨S1024x16x128, .f32⟩ : BufTy).Contents (Elt F) → (⟨S1024x16x128, .f32⟩ : BufTy).Contents (Elt F) → (⟨S1024x16x128, .f32⟩ : BufTy).Contents (Elt F)),
    reshape main_v64 main_v65 rfl shapeCasts_S1024x16x128_S16384x128,
    unary main_v51 main_v66 ((extractStridedSlice S1024x16x1x128 ![0, 0, 0, 0] · slices_S1024x16x2x128_S1024x16x1x128_0_0_0_0) : (⟨S1024x16x2x128, .f32⟩ : BufTy).Contents (Elt F) → (⟨S1024x16x1x128, .f32⟩ : BufTy).Contents (Elt F)),
    reshape main_v66 main_v67 rfl shapeCasts_S1024x16x1x128_S1024x16x128,
    unary main_v53 main_v68 (broadcastInDim S1024x16x128 ![0, 1, 2] bcast_S1024x16x1_S1024x16x128_0_1_2 : (⟨S1024x16x1, .f32⟩ : BufTy).Contents (Elt F) → (⟨S1024x16x128, .f32⟩ : BufTy).Contents (Elt F)),
    binary main_v67 main_v68 main_v69 (mulf : (⟨S1024x16x128, .f32⟩ : BufTy).Contents (Elt F) → (⟨S1024x16x128, .f32⟩ : BufTy).Contents (Elt F) → (⟨S1024x16x128, .f32⟩ : BufTy).Contents (Elt F)),
    reshape main_v69 main_v70 rfl shapeCasts_S1024x16x128_S16384x128,
    unary main_v49 main_v71 ((extractStridedSlice S1024x16x1x128 ![0, 0, 1, 0] · slices_S1024x16x2x128_S1024x16x1x128_0_0_1_0) : (⟨S1024x16x2x128, .f32⟩ : BufTy).Contents (Elt F) → (⟨S1024x16x1x128, .f32⟩ : BufTy).Contents (Elt F)),
    reshape main_v71 main_v72 rfl shapeCasts_S1024x16x1x128_S1024x16x128,
    unary main_v55 main_v73 (broadcastInDim S1024x16x128 ![0, 1, 2] bcast_S1024x16x1_S1024x16x128_0_1_2 : (⟨S1024x16x1, .f32⟩ : BufTy).Contents (Elt F) → (⟨S1024x16x128, .f32⟩ : BufTy).Contents (Elt F)),
    binary main_v72 main_v73 main_v74 (mulf : (⟨S1024x16x128, .f32⟩ : BufTy).Contents (Elt F) → (⟨S1024x16x128, .f32⟩ : BufTy).Contents (Elt F) → (⟨S1024x16x128, .f32⟩ : BufTy).Contents (Elt F)),
    reshape main_v74 main_v75 rfl shapeCasts_S1024x16x128_S16384x128,
    unary main_v50 main_v76 ((extractStridedSlice S1024x16x1x128 ![0, 0, 1, 0] · slices_S1024x16x2x128_S1024x16x1x128_0_0_1_0) : (⟨S1024x16x2x128, .f32⟩ : BufTy).Contents (Elt F) → (⟨S1024x16x1x128, .f32⟩ : BufTy).Contents (Elt F)),
    reshape main_v76 main_v77 rfl shapeCasts_S1024x16x1x128_S1024x16x128,
    unary main_v55 main_v78 (broadcastInDim S1024x16x128 ![0, 1, 2] bcast_S1024x16x1_S1024x16x128_0_1_2 : (⟨S1024x16x1, .f32⟩ : BufTy).Contents (Elt F) → (⟨S1024x16x128, .f32⟩ : BufTy).Contents (Elt F)),
    binary main_v77 main_v78 main_v79 (mulf : (⟨S1024x16x128, .f32⟩ : BufTy).Contents (Elt F) → (⟨S1024x16x128, .f32⟩ : BufTy).Contents (Elt F) → (⟨S1024x16x128, .f32⟩ : BufTy).Contents (Elt F)),
    reshape main_v79 main_v80 rfl shapeCasts_S1024x16x128_S16384x128,
    unary main_v51 main_v81 ((extractStridedSlice S1024x16x1x128 ![0, 0, 1, 0] · slices_S1024x16x2x128_S1024x16x1x128_0_0_1_0) : (⟨S1024x16x2x128, .f32⟩ : BufTy).Contents (Elt F) → (⟨S1024x16x1x128, .f32⟩ : BufTy).Contents (Elt F)),
    reshape main_v81 main_v82 rfl shapeCasts_S1024x16x1x128_S1024x16x128,
    unary main_v55 main_v83 (broadcastInDim S1024x16x128 ![0, 1, 2] bcast_S1024x16x1_S1024x16x128_0_1_2 : (⟨S1024x16x1, .f32⟩ : BufTy).Contents (Elt F) → (⟨S1024x16x128, .f32⟩ : BufTy).Contents (Elt F)),
    binary main_v82 main_v83 main_v84 (mulf : (⟨S1024x16x128, .f32⟩ : BufTy).Contents (Elt F) → (⟨S1024x16x128, .f32⟩ : BufTy).Contents (Elt F) → (⟨S1024x16x128, .f32⟩ : BufTy).Contents (Elt F)),
    reshape main_v84 main_v85 rfl shapeCasts_S1024x16x128_S16384x128,
    unary main_v3 main_v86 ((extractStridedSlice S16384x128 ![15360, 0] · slices_S64512x128_S16384x128_15360_0) : (⟨S64512x128, .f32⟩ : BufTy).Contents (Elt F) → (⟨S16384x128, .f32⟩ : BufTy).Contents (Elt F)),
    unary main_v7 main_v87 ((extractStridedSlice S16384x128 ![15360, 0] · slices_S64512x128_S16384x128_15360_0) : (⟨S64512x128, .f32⟩ : BufTy).Contents (Elt F) → (⟨S16384x128, .f32⟩ : BufTy).Contents (Elt F)),
    unary main_v19 main_v88 ((extractStridedSlice S16384x128 ![15360, 0] · slices_S64512x128_S16384x128_15360_0) : (⟨S64512x128, .f32⟩ : BufTy).Contents (Elt F) → (⟨S16384x128, .f32⟩ : BufTy).Contents (Elt F)),
    unary main_v24 main_v89 ((extractStridedSlice S16384x128 ![15360, 0] · slices_S64512x128_S16384x128_15360_0) : (⟨S64512x128, .f32⟩ : BufTy).Contents (Elt F) → (⟨S16384x128, .f32⟩ : BufTy).Contents (Elt F)),
    unary main_v14 main_v90 ((extractStridedSlice S16384x128 ![15360, 0] · slices_S64512x128_S16384x128_15360_0) : (⟨S64512x128, .f32⟩ : BufTy).Contents (Elt F) → (⟨S16384x128, .f32⟩ : BufTy).Contents (Elt F)),
    nary ![main_v86, main_v87, main_v88, main_v89, main_v90, main_v60, main_v75, main_v65, main_v70, main_v80, main_v85] main_v91 (fun u => concatenate S16384x1408 1 [⟨S16384x128, u 0⟩, ⟨S16384x128, u 1⟩, ⟨S16384x128, u 2⟩, ⟨S16384x128, u 3⟩, ⟨S16384x128, u 4⟩, ⟨S16384x128, u 5⟩, ⟨S16384x128, u 6⟩, ⟨S16384x128, u 7⟩, ⟨S16384x128, u 8⟩, ⟨S16384x128, u 9⟩, ⟨S16384x128, u 10⟩] concatenates_S16384x128_S16384x128_S16384x128_S16384x128_S16384x128_S16384x128_S16384x128_S16384x128_S16384x128_S16384x128_S16384x128_S16384x1408_d1),
    binary main_v91 main_arg16 main_v92 ((fun l r => Host.dotGeneral dot_S16384x1408_S1408x512_S16384x512_1_0_0_1_n_n none l r) : (⟨S16384x1408, .f32⟩ : BufTy).Contents (Elt F) → (⟨S1408x512, .f32⟩ : BufTy).Contents (Elt F) → (⟨S16384x512, .f32⟩ : BufTy).Contents (Elt F)),
    unary main_arg17 main_v93 (broadcastInDim S1x512 ![1] bcast_S512_S1x512_1 : (⟨S512, .f32⟩ : BufTy).Contents (Elt F) → (⟨S1x512, .f32⟩ : BufTy).Contents (Elt F)),
    unary main_v93 main_v94 (broadcastInDim S16384x512 ![0, 1] bcast_S1x512_S16384x512_0_1 : (⟨S1x512, .f32⟩ : BufTy).Contents (Elt F) → (⟨S16384x512, .f32⟩ : BufTy).Contents (Elt F)),
    binary main_v92 main_v94 main_v95 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S16384x512, .f32⟩) main_call3_v0) (broadcastInDim S16384x512 ![] bcast_S_S16384x512),
    TRef.binary (TRef.of (T := ⟨S16384x512, .f32⟩) main_v95) (TRef.of (T := ⟨S16384x512, .f32⟩) main_call3_v0) (TRef.of (T := ⟨S16384x512, .f32⟩) main_v96) maximumf,
    binary main_v96 main_arg18 main_v97 ((fun l r => Host.dotGeneral dot_S16384x512_S512x256_S16384x256_1_0_0_1_n_n none l r) : (⟨S16384x512, .f32⟩ : BufTy).Contents (Elt F) → (⟨S512x256, .f32⟩ : BufTy).Contents (Elt F) → (⟨S16384x256, .f32⟩ : BufTy).Contents (Elt F)),
    unary main_arg19 main_v98 (broadcastInDim S1x256 ![1] bcast_S256_S1x256_1 : (⟨S256, .f32⟩ : BufTy).Contents (Elt F) → (⟨S1x256, .f32⟩ : BufTy).Contents (Elt F)),
    unary main_v98 main_v99 (broadcastInDim S16384x256 ![0, 1] bcast_S1x256_S16384x256_0_1 : (⟨S1x256, .f32⟩ : BufTy).Contents (Elt F) → (⟨S16384x256, .f32⟩ : BufTy).Contents (Elt F)),
    binary main_v97 main_v99 main_v100 (addf : (⟨S16384x256, .f32⟩ : BufTy).Contents (Elt F) → (⟨S16384x256, .f32⟩ : BufTy).Contents (Elt F) → (⟨S16384x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16384x256, .f32⟩) main_call4_v0) (broadcastInDim S16384x256 ![] bcast_S_S16384x256),
    TRef.binary (TRef.of (T := ⟨S16384x256, .f32⟩) main_v100) (TRef.of (T := ⟨S16384x256, .f32⟩) main_call4_v0) (TRef.of (T := ⟨S16384x256, .f32⟩) main_v101) maximumf,
    binary main_v101 main_arg20 main_v102 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg21 main_v103 (broadcastInDim S1x128 ![1] bcast_S128_S1x128_1 : (⟨S128, .f32⟩ : BufTy).Contents (Elt F) → (⟨S1x128, .f32⟩ : BufTy).Contents (Elt F)),
    unary main_v103 main_v104 (broadcastInDim S16384x128 ![0, 1] bcast_S1x128_S16384x128_0_1 : (⟨S1x128, .f32⟩ : BufTy).Contents (Elt F) → (⟨S16384x128, .f32⟩ : BufTy).Contents (Elt F)),
    binary main_v102 main_v104 main_v105 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16384x128, .f32⟩) main_call5_v0) (broadcastInDim S16384x128 ![] bcast_S_S16384x128),
    TRef.binary (TRef.of (T := ⟨S16384x128, .f32⟩) main_v105) (TRef.of (T := ⟨S16384x128, .f32⟩) main_call5_v0) (TRef.of (T := ⟨S16384x128, .f32⟩) main_v106) maximumf ]

abbrev ops3 : List (HloOp τ sig (Elt F)) :=
  [ reshape main_v106 main_v107 rfl shapeCasts_S16384x128_S1024x8x2x128,
    reshape main_v60 main_v108 rfl shapeCasts_S16384x128_S1024x8x2x128,
    reshape main_v75 main_v109 rfl shapeCasts_S16384x128_S1024x8x2x128,
    unary main_v25 main_v110 ((extractStridedSlice S8192 ![7168] · slices_S64512_S8192_7168) : (⟨S64512, .f32⟩ : BufTy).Contents (Elt F) → (⟨S8192, .f32⟩ : BufTy).Contents (Elt F)),
    reshape main_v110 main_v111 rfl shapeCasts_S8192_S1024x8x1,
    unary main_v26 main_v112 ((extractStridedSlice S8192 ![7168] · slices_S64512_S8192_7168) : (⟨S64512, .f32⟩ : BufTy).Contents (Elt F) → (⟨S8192, .f32⟩ : BufTy).Contents (Elt F)),
    reshape main_v112 main_v113 rfl shapeCasts_S8192_S1024x8x1,
    unary main_v107 main_v114 ((extractStridedSlice S1024x8x1x128 ![0, 0, 0, 0] · slices_S1024x8x2x128_S1024x8x1x128_0_0_0_0) : (⟨S1024x8x2x128, .f32⟩ : BufTy).Contents (Elt F) → (⟨S1024x8x1x128, .f32⟩ : BufTy).Contents (Elt F)),
    reshape main_v114 main_v115 rfl shapeCasts_S1024x8x1x128_S1024x8x128,
    unary main_v111 main_v116 (broadcastInDim S1024x8x128 ![0, 1, 2] bcast_S1024x8x1_S1024x8x128_0_1_2 : (⟨S1024x8x1, .f32⟩ : BufTy).Contents (Elt F) → (⟨S1024x8x128, .f32⟩ : BufTy).Contents (Elt F)),
    binary main_v115 main_v116 main_v117 (mulf : (⟨S1024x8x128, .f32⟩ : BufTy).Contents (Elt F) → (⟨S1024x8x128, .f32⟩ : BufTy).Contents (Elt F) → (⟨S1024x8x128, .f32⟩ : BufTy).Contents (Elt F)),
    reshape main_v117 main_v118 rfl shapeCasts_S1024x8x128_S8192x128,
    unary main_v108 main_v119 ((extractStridedSlice S1024x8x1x128 ![0, 0, 0, 0] · slices_S1024x8x2x128_S1024x8x1x128_0_0_0_0) : (⟨S1024x8x2x128, .f32⟩ : BufTy).Contents (Elt F) → (⟨S1024x8x1x128, .f32⟩ : BufTy).Contents (Elt F)),
    reshape main_v119 main_v120 rfl shapeCasts_S1024x8x1x128_S1024x8x128,
    unary main_v111 main_v121 (broadcastInDim S1024x8x128 ![0, 1, 2] bcast_S1024x8x1_S1024x8x128_0_1_2 : (⟨S1024x8x1, .f32⟩ : BufTy).Contents (Elt F) → (⟨S1024x8x128, .f32⟩ : BufTy).Contents (Elt F)),
    binary main_v120 main_v121 main_v122 (mulf : (⟨S1024x8x128, .f32⟩ : BufTy).Contents (Elt F) → (⟨S1024x8x128, .f32⟩ : BufTy).Contents (Elt F) → (⟨S1024x8x128, .f32⟩ : BufTy).Contents (Elt F)),
    reshape main_v122 main_v123 rfl shapeCasts_S1024x8x128_S8192x128,
    unary main_v109 main_v124 ((extractStridedSlice S1024x8x1x128 ![0, 0, 0, 0] · slices_S1024x8x2x128_S1024x8x1x128_0_0_0_0) : (⟨S1024x8x2x128, .f32⟩ : BufTy).Contents (Elt F) → (⟨S1024x8x1x128, .f32⟩ : BufTy).Contents (Elt F)),
    reshape main_v124 main_v125 rfl shapeCasts_S1024x8x1x128_S1024x8x128,
    unary main_v111 main_v126 (broadcastInDim S1024x8x128 ![0, 1, 2] bcast_S1024x8x1_S1024x8x128_0_1_2 : (⟨S1024x8x1, .f32⟩ : BufTy).Contents (Elt F) → (⟨S1024x8x128, .f32⟩ : BufTy).Contents (Elt F)),
    binary main_v125 main_v126 main_v127 (mulf : (⟨S1024x8x128, .f32⟩ : BufTy).Contents (Elt F) → (⟨S1024x8x128, .f32⟩ : BufTy).Contents (Elt F) → (⟨S1024x8x128, .f32⟩ : BufTy).Contents (Elt F)),
    reshape main_v127 main_v128 rfl shapeCasts_S1024x8x128_S8192x128,
    unary main_v107 main_v129 ((extractStridedSlice S1024x8x1x128 ![0, 0, 1, 0] · slices_S1024x8x2x128_S1024x8x1x128_0_0_1_0) : (⟨S1024x8x2x128, .f32⟩ : BufTy).Contents (Elt F) → (⟨S1024x8x1x128, .f32⟩ : BufTy).Contents (Elt F)),
    reshape main_v129 main_v130 rfl shapeCasts_S1024x8x1x128_S1024x8x128,
    unary main_v113 main_v131 (broadcastInDim S1024x8x128 ![0, 1, 2] bcast_S1024x8x1_S1024x8x128_0_1_2 : (⟨S1024x8x1, .f32⟩ : BufTy).Contents (Elt F) → (⟨S1024x8x128, .f32⟩ : BufTy).Contents (Elt F)),
    binary main_v130 main_v131 main_v132 (mulf : (⟨S1024x8x128, .f32⟩ : BufTy).Contents (Elt F) → (⟨S1024x8x128, .f32⟩ : BufTy).Contents (Elt F) → (⟨S1024x8x128, .f32⟩ : BufTy).Contents (Elt F)),
    reshape main_v132 main_v133 rfl shapeCasts_S1024x8x128_S8192x128,
    unary main_v108 main_v134 ((extractStridedSlice S1024x8x1x128 ![0, 0, 1, 0] · slices_S1024x8x2x128_S1024x8x1x128_0_0_1_0) : (⟨S1024x8x2x128, .f32⟩ : BufTy).Contents (Elt F) → (⟨S1024x8x1x128, .f32⟩ : BufTy).Contents (Elt F)),
    reshape main_v134 main_v135 rfl shapeCasts_S1024x8x1x128_S1024x8x128,
    unary main_v113 main_v136 (broadcastInDim S1024x8x128 ![0, 1, 2] bcast_S1024x8x1_S1024x8x128_0_1_2 : (⟨S1024x8x1, .f32⟩ : BufTy).Contents (Elt F) → (⟨S1024x8x128, .f32⟩ : BufTy).Contents (Elt F)),
    binary main_v135 main_v136 main_v137 (mulf : (⟨S1024x8x128, .f32⟩ : BufTy).Contents (Elt F) → (⟨S1024x8x128, .f32⟩ : BufTy).Contents (Elt F) → (⟨S1024x8x128, .f32⟩ : BufTy).Contents (Elt F)),
    reshape main_v137 main_v138 rfl shapeCasts_S1024x8x128_S8192x128,
    unary main_v109 main_v139 ((extractStridedSlice S1024x8x1x128 ![0, 0, 1, 0] · slices_S1024x8x2x128_S1024x8x1x128_0_0_1_0) : (⟨S1024x8x2x128, .f32⟩ : BufTy).Contents (Elt F) → (⟨S1024x8x1x128, .f32⟩ : BufTy).Contents (Elt F)),
    reshape main_v139 main_v140 rfl shapeCasts_S1024x8x1x128_S1024x8x128,
    unary main_v113 main_v141 (broadcastInDim S1024x8x128 ![0, 1, 2] bcast_S1024x8x1_S1024x8x128_0_1_2 : (⟨S1024x8x1, .f32⟩ : BufTy).Contents (Elt F) → (⟨S1024x8x128, .f32⟩ : BufTy).Contents (Elt F)),
    binary main_v140 main_v141 main_v142 (mulf : (⟨S1024x8x128, .f32⟩ : BufTy).Contents (Elt F) → (⟨S1024x8x128, .f32⟩ : BufTy).Contents (Elt F) → (⟨S1024x8x128, .f32⟩ : BufTy).Contents (Elt F)),
    reshape main_v142 main_v143 rfl shapeCasts_S1024x8x128_S8192x128,
    unary main_v3 main_v144 ((extractStridedSlice S8192x128 ![7168, 0] · slices_S64512x128_S8192x128_7168_0) : (⟨S64512x128, .f32⟩ : BufTy).Contents (Elt F) → (⟨S8192x128, .f32⟩ : BufTy).Contents (Elt F)),
    unary main_v7 main_v145 ((extractStridedSlice S8192x128 ![7168, 0] · slices_S64512x128_S8192x128_7168_0) : (⟨S64512x128, .f32⟩ : BufTy).Contents (Elt F) → (⟨S8192x128, .f32⟩ : BufTy).Contents (Elt F)),
    unary main_v19 main_v146 ((extractStridedSlice S8192x128 ![7168, 0] · slices_S64512x128_S8192x128_7168_0) : (⟨S64512x128, .f32⟩ : BufTy).Contents (Elt F) → (⟨S8192x128, .f32⟩ : BufTy).Contents (Elt F)),
    unary main_v24 main_v147 ((extractStridedSlice S8192x128 ![7168, 0] · slices_S64512x128_S8192x128_7168_0) : (⟨S64512x128, .f32⟩ : BufTy).Contents (Elt F) → (⟨S8192x128, .f32⟩ : BufTy).Contents (Elt F)),
    unary main_v14 main_v148 ((extractStridedSlice S8192x128 ![7168, 0] · slices_S64512x128_S8192x128_7168_0) : (⟨S64512x128, .f32⟩ : BufTy).Contents (Elt F) → (⟨S8192x128, .f32⟩ : BufTy).Contents (Elt F)),
    nary ![main_v144, main_v145, main_v146, main_v147, main_v148, main_v118, main_v133, main_v123, main_v128, main_v138, main_v143] main_v149 (fun u => concatenate S8192x1408 1 [⟨S8192x128, u 0⟩, ⟨S8192x128, u 1⟩, ⟨S8192x128, u 2⟩, ⟨S8192x128, u 3⟩, ⟨S8192x128, u 4⟩, ⟨S8192x128, u 5⟩, ⟨S8192x128, u 6⟩, ⟨S8192x128, u 7⟩, ⟨S8192x128, u 8⟩, ⟨S8192x128, u 9⟩, ⟨S8192x128, u 10⟩] concatenates_S8192x128_S8192x128_S8192x128_S8192x128_S8192x128_S8192x128_S8192x128_S8192x128_S8192x128_S8192x128_S8192x128_S8192x1408_d1),
    binary main_v149 main_arg16 main_v150 ((fun l r => Host.dotGeneral dot_S8192x1408_S1408x512_S8192x512_1_0_0_1_n_n none l r) : (⟨S8192x1408, .f32⟩ : BufTy).Contents (Elt F) → (⟨S1408x512, .f32⟩ : BufTy).Contents (Elt F) → (⟨S8192x512, .f32⟩ : BufTy).Contents (Elt F)),
    unary main_arg17 main_v151 (broadcastInDim S1x512 ![1] bcast_S512_S1x512_1 : (⟨S512, .f32⟩ : BufTy).Contents (Elt F) → (⟨S1x512, .f32⟩ : BufTy).Contents (Elt F)),
    unary main_v151 main_v152 (broadcastInDim S8192x512 ![0, 1] bcast_S1x512_S8192x512_0_1 : (⟨S1x512, .f32⟩ : BufTy).Contents (Elt F) → (⟨S8192x512, .f32⟩ : BufTy).Contents (Elt F)),
    binary main_v150 main_v152 main_v153 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8192x512, .f32⟩) main_call6_v0) (broadcastInDim S8192x512 ![] bcast_S_S8192x512),
    TRef.binary (TRef.of (T := ⟨S8192x512, .f32⟩) main_v153) (TRef.of (T := ⟨S8192x512, .f32⟩) main_call6_v0) (TRef.of (T := ⟨S8192x512, .f32⟩) main_v154) maximumf,
    binary main_v154 main_arg18 main_v155 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg19 main_v156 (broadcastInDim S1x256 ![1] bcast_S256_S1x256_1 : (⟨S256, .f32⟩ : BufTy).Contents (Elt F) → (⟨S1x256, .f32⟩ : BufTy).Contents (Elt F)),
    unary main_v156 main_v157 (broadcastInDim S8192x256 ![0, 1] bcast_S1x256_S8192x256_0_1 : (⟨S1x256, .f32⟩ : BufTy).Contents (Elt F) → (⟨S8192x256, .f32⟩ : BufTy).Contents (Elt F)),
    binary main_v155 main_v157 main_v158 (addf : (⟨S8192x256, .f32⟩ : BufTy).Contents (Elt F) → (⟨S8192x256, .f32⟩ : BufTy).Contents (Elt F) → (⟨S8192x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8192x256, .f32⟩) main_call7_v0) (broadcastInDim S8192x256 ![] bcast_S_S8192x256),
    TRef.binary (TRef.of (T := ⟨S8192x256, .f32⟩) main_v158) (TRef.of (T := ⟨S8192x256, .f32⟩) main_call7_v0) (TRef.of (T := ⟨S8192x256, .f32⟩) main_v159) maximumf,
    binary main_v159 main_arg20 main_v160 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    unary main_arg21 main_v161 (broadcastInDim S1x128 ![1] bcast_S128_S1x128_1 : (⟨S128, .f32⟩ : BufTy).Contents (Elt F) → (⟨S1x128, .f32⟩ : BufTy).Contents (Elt F)),
    unary main_v161 main_v162 (broadcastInDim S8192x128 ![0, 1] bcast_S1x128_S8192x128_0_1 : (⟨S1x128, .f32⟩ : BufTy).Contents (Elt F) → (⟨S8192x128, .f32⟩ : BufTy).Contents (Elt F)),
    binary main_v160 main_v162 main_v163 (addf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8192x128, .f32⟩) main_call8_v0) (broadcastInDim S8192x128 ![] bcast_S_S8192x128),
    TRef.binary (TRef.of (T := ⟨S8192x128, .f32⟩) main_v163) (TRef.of (T := ⟨S8192x128, .f32⟩) main_call8_v0) (TRef.of (T := ⟨S8192x128, .f32⟩) main_v164) maximumf ]

abbrev ops4 : List (HloOp τ sig (Elt F)) :=
  [ reshape main_v164 main_v165 rfl shapeCasts_S8192x128_S1024x4x2x128,
    reshape main_v118 main_v166 rfl shapeCasts_S8192x128_S1024x4x2x128,
    reshape main_v133 main_v167 rfl shapeCasts_S8192x128_S1024x4x2x128,
    unary main_v25 main_v168 ((extractStridedSlice S4096 ![3072] · slices_S64512_S4096_3072) : (⟨S64512, .f32⟩ : BufTy).Contents (Elt F) → (⟨S4096, .f32⟩ : BufTy).Contents (Elt F)),
    reshape main_v168 main_v169 rfl shapeCasts_S4096_S1024x4x1,
    unary main_v26 main_v170 ((extractStridedSlice S4096 ![3072] · slices_S64512_S4096_3072) : (⟨S64512, .f32⟩ : BufTy).Contents (Elt F) → (⟨S4096, .f32⟩ : BufTy).Contents (Elt F)),
    reshape main_v170 main_v171 rfl shapeCasts_S4096_S1024x4x1,
    unary main_v165 main_v172 ((extractStridedSlice S1024x4x1x128 ![0, 0, 0, 0] · slices_S1024x4x2x128_S1024x4x1x128_0_0_0_0) : (⟨S1024x4x2x128, .f32⟩ : BufTy).Contents (Elt F) → (⟨S1024x4x1x128, .f32⟩ : BufTy).Contents (Elt F)),
    reshape main_v172 main_v173 rfl shapeCasts_S1024x4x1x128_S1024x4x128,
    unary main_v169 main_v174 (broadcastInDim S1024x4x128 ![0, 1, 2] bcast_S1024x4x1_S1024x4x128_0_1_2 : (⟨S1024x4x1, .f32⟩ : BufTy).Contents (Elt F) → (⟨S1024x4x128, .f32⟩ : BufTy).Contents (Elt F)),
    binary main_v173 main_v174 main_v175 (mulf : (⟨S1024x4x128, .f32⟩ : BufTy).Contents (Elt F) → (⟨S1024x4x128, .f32⟩ : BufTy).Contents (Elt F) → (⟨S1024x4x128, .f32⟩ : BufTy).Contents (Elt F)),
    reshape main_v175 main_v176 rfl shapeCasts_S1024x4x128_S4096x128,
    unary main_v166 main_v177 ((extractStridedSlice S1024x4x1x128 ![0, 0, 0, 0] · slices_S1024x4x2x128_S1024x4x1x128_0_0_0_0) : (⟨S1024x4x2x128, .f32⟩ : BufTy).Contents (Elt F) → (⟨S1024x4x1x128, .f32⟩ : BufTy).Contents (Elt F)),
    reshape main_v177 main_v178 rfl shapeCasts_S1024x4x1x128_S1024x4x128,
    unary main_v169 main_v179 (broadcastInDim S1024x4x128 ![0, 1, 2] bcast_S1024x4x1_S1024x4x128_0_1_2 : (⟨S1024x4x1, .f32⟩ : BufTy).Contents (Elt F) → (⟨S1024x4x128, .f32⟩ : BufTy).Contents (Elt F)),
    binary main_v178 main_v179 main_v180 (mulf : (⟨S1024x4x128, .f32⟩ : BufTy).Contents (Elt F) → (⟨S1024x4x128, .f32⟩ : BufTy).Contents (Elt F) → (⟨S1024x4x128, .f32⟩ : BufTy).Contents (Elt F)),
    reshape main_v180 main_v181 rfl shapeCasts_S1024x4x128_S4096x128,
    unary main_v167 main_v182 ((extractStridedSlice S1024x4x1x128 ![0, 0, 0, 0] · slices_S1024x4x2x128_S1024x4x1x128_0_0_0_0) : (⟨S1024x4x2x128, .f32⟩ : BufTy).Contents (Elt F) → (⟨S1024x4x1x128, .f32⟩ : BufTy).Contents (Elt F)),
    reshape main_v182 main_v183 rfl shapeCasts_S1024x4x1x128_S1024x4x128,
    unary main_v169 main_v184 (broadcastInDim S1024x4x128 ![0, 1, 2] bcast_S1024x4x1_S1024x4x128_0_1_2 : (⟨S1024x4x1, .f32⟩ : BufTy).Contents (Elt F) → (⟨S1024x4x128, .f32⟩ : BufTy).Contents (Elt F)),
    binary main_v183 main_v184 main_v185 (mulf : (⟨S1024x4x128, .f32⟩ : BufTy).Contents (Elt F) → (⟨S1024x4x128, .f32⟩ : BufTy).Contents (Elt F) → (⟨S1024x4x128, .f32⟩ : BufTy).Contents (Elt F)),
    reshape main_v185 main_v186 rfl shapeCasts_S1024x4x128_S4096x128,
    unary main_v165 main_v187 ((extractStridedSlice S1024x4x1x128 ![0, 0, 1, 0] · slices_S1024x4x2x128_S1024x4x1x128_0_0_1_0) : (⟨S1024x4x2x128, .f32⟩ : BufTy).Contents (Elt F) → (⟨S1024x4x1x128, .f32⟩ : BufTy).Contents (Elt F)),
    reshape main_v187 main_v188 rfl shapeCasts_S1024x4x1x128_S1024x4x128,
    unary main_v171 main_v189 (broadcastInDim S1024x4x128 ![0, 1, 2] bcast_S1024x4x1_S1024x4x128_0_1_2 : (⟨S1024x4x1, .f32⟩ : BufTy).Contents (Elt F) → (⟨S1024x4x128, .f32⟩ : BufTy).Contents (Elt F)),
    binary main_v188 main_v189 main_v190 (mulf : (⟨S1024x4x128, .f32⟩ : BufTy).Contents (Elt F) → (⟨S1024x4x128, .f32⟩ : BufTy).Contents (Elt F) → (⟨S1024x4x128, .f32⟩ : BufTy).Contents (Elt F)),
    reshape main_v190 main_v191 rfl shapeCasts_S1024x4x128_S4096x128,
    unary main_v166 main_v192 ((extractStridedSlice S1024x4x1x128 ![0, 0, 1, 0] · slices_S1024x4x2x128_S1024x4x1x128_0_0_1_0) : (⟨S1024x4x2x128, .f32⟩ : BufTy).Contents (Elt F) → (⟨S1024x4x1x128, .f32⟩ : BufTy).Contents (Elt F)),
    reshape main_v192 main_v193 rfl shapeCasts_S1024x4x1x128_S1024x4x128,
    unary main_v171 main_v194 (broadcastInDim S1024x4x128 ![0, 1, 2] bcast_S1024x4x1_S1024x4x128_0_1_2 : (⟨S1024x4x1, .f32⟩ : BufTy).Contents (Elt F) → (⟨S1024x4x128, .f32⟩ : BufTy).Contents (Elt F)),
    binary main_v193 main_v194 main_v195 (mulf : (⟨S1024x4x128, .f32⟩ : BufTy).Contents (Elt F) → (⟨S1024x4x128, .f32⟩ : BufTy).Contents (Elt F) → (⟨S1024x4x128, .f32⟩ : BufTy).Contents (Elt F)),
    reshape main_v195 main_v196 rfl shapeCasts_S1024x4x128_S4096x128,
    unary main_v167 main_v197 ((extractStridedSlice S1024x4x1x128 ![0, 0, 1, 0] · slices_S1024x4x2x128_S1024x4x1x128_0_0_1_0) : (⟨S1024x4x2x128, .f32⟩ : BufTy).Contents (Elt F) → (⟨S1024x4x1x128, .f32⟩ : BufTy).Contents (Elt F)),
    reshape main_v197 main_v198 rfl shapeCasts_S1024x4x1x128_S1024x4x128,
    unary main_v171 main_v199 (broadcastInDim S1024x4x128 ![0, 1, 2] bcast_S1024x4x1_S1024x4x128_0_1_2 : (⟨S1024x4x1, .f32⟩ : BufTy).Contents (Elt F) → (⟨S1024x4x128, .f32⟩ : BufTy).Contents (Elt F)),
    binary main_v198 main_v199 main_v200 (mulf : (⟨S1024x4x128, .f32⟩ : BufTy).Contents (Elt F) → (⟨S1024x4x128, .f32⟩ : BufTy).Contents (Elt F) → (⟨S1024x4x128, .f32⟩ : BufTy).Contents (Elt F)),
    reshape main_v200 main_v201 rfl shapeCasts_S1024x4x128_S4096x128,
    unary main_v3 main_v202 ((extractStridedSlice S4096x128 ![3072, 0] · slices_S64512x128_S4096x128_3072_0) : (⟨S64512x128, .f32⟩ : BufTy).Contents (Elt F) → (⟨S4096x128, .f32⟩ : BufTy).Contents (Elt F)),
    unary main_v7 main_v203 ((extractStridedSlice S4096x128 ![3072, 0] · slices_S64512x128_S4096x128_3072_0) : (⟨S64512x128, .f32⟩ : BufTy).Contents (Elt F) → (⟨S4096x128, .f32⟩ : BufTy).Contents (Elt F)),
    unary main_v19 main_v204 ((extractStridedSlice S4096x128 ![3072, 0] · slices_S64512x128_S4096x128_3072_0) : (⟨S64512x128, .f32⟩ : BufTy).Contents (Elt F) → (⟨S4096x128, .f32⟩ : BufTy).Contents (Elt F)),
    unary main_v24 main_v205 ((extractStridedSlice S4096x128 ![3072, 0] · slices_S64512x128_S4096x128_3072_0) : (⟨S64512x128, .f32⟩ : BufTy).Contents (Elt F) → (⟨S4096x128, .f32⟩ : BufTy).Contents (Elt F)),
    unary main_v14 main_v206 ((extractStridedSlice S4096x128 ![3072, 0] · slices_S64512x128_S4096x128_3072_0) : (⟨S64512x128, .f32⟩ : BufTy).Contents (Elt F) → (⟨S4096x128, .f32⟩ : BufTy).Contents (Elt F)),
    nary ![main_v202, main_v203, main_v204, main_v205, main_v206, main_v176, main_v191, main_v181, main_v186, main_v196, main_v201] main_v207 (fun u => concatenate S4096x1408 1 [⟨S4096x128, u 0⟩, ⟨S4096x128, u 1⟩, ⟨S4096x128, u 2⟩, ⟨S4096x128, u 3⟩, ⟨S4096x128, u 4⟩, ⟨S4096x128, u 5⟩, ⟨S4096x128, u 6⟩, ⟨S4096x128, u 7⟩, ⟨S4096x128, u 8⟩, ⟨S4096x128, u 9⟩, ⟨S4096x128, u 10⟩] concatenates_S4096x128_S4096x128_S4096x128_S4096x128_S4096x128_S4096x128_S4096x128_S4096x128_S4096x128_S4096x128_S4096x128_S4096x1408_d1),
    binary main_v207 main_arg16 main_v208 ((fun l r => Host.dotGeneral dot_S4096x1408_S1408x512_S4096x512_1_0_0_1_n_n none l r) : (⟨S4096x1408, .f32⟩ : BufTy).Contents (Elt F) → (⟨S1408x512, .f32⟩ : BufTy).Contents (Elt F) → (⟨S4096x512, .f32⟩ : BufTy).Contents (Elt F)),
    unary main_arg17 main_v209 (broadcastInDim S1x512 ![1] bcast_S512_S1x512_1 : (⟨S512, .f32⟩ : BufTy).Contents (Elt F) → (⟨S1x512, .f32⟩ : BufTy).Contents (Elt F)),
    unary main_v209 main_v210 (broadcastInDim S4096x512 ![0, 1] bcast_S1x512_S4096x512_0_1 : (⟨S1x512, .f32⟩ : BufTy).Contents (Elt F) → (⟨S4096x512, .f32⟩ : BufTy).Contents (Elt F)),
    binary main_v208 main_v210 main_v211 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S4096x512, .f32⟩) main_call9_v0) (broadcastInDim S4096x512 ![] bcast_S_S4096x512),
    TRef.binary (TRef.of (T := ⟨S4096x512, .f32⟩) main_v211) (TRef.of (T := ⟨S4096x512, .f32⟩) main_call9_v0) (TRef.of (T := ⟨S4096x512, .f32⟩) main_v212) maximumf,
    binary main_v212 main_arg18 main_v213 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg19 main_v214 (broadcastInDim S1x256 ![1] bcast_S256_S1x256_1 : (⟨S256, .f32⟩ : BufTy).Contents (Elt F) → (⟨S1x256, .f32⟩ : BufTy).Contents (Elt F)),
    unary main_v214 main_v215 (broadcastInDim S4096x256 ![0, 1] bcast_S1x256_S4096x256_0_1 : (⟨S1x256, .f32⟩ : BufTy).Contents (Elt F) → (⟨S4096x256, .f32⟩ : BufTy).Contents (Elt F)),
    binary main_v213 main_v215 main_v216 (addf : (⟨S4096x256, .f32⟩ : BufTy).Contents (Elt F) → (⟨S4096x256, .f32⟩ : BufTy).Contents (Elt F) → (⟨S4096x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S4096x256, .f32⟩) main_call10_v0) (broadcastInDim S4096x256 ![] bcast_S_S4096x256),
    TRef.binary (TRef.of (T := ⟨S4096x256, .f32⟩) main_v216) (TRef.of (T := ⟨S4096x256, .f32⟩) main_call10_v0) (TRef.of (T := ⟨S4096x256, .f32⟩) main_v217) maximumf,
    binary main_v217 main_arg20 main_v218 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    unary main_arg21 main_v219 (broadcastInDim S1x128 ![1] bcast_S128_S1x128_1 : (⟨S128, .f32⟩ : BufTy).Contents (Elt F) → (⟨S1x128, .f32⟩ : BufTy).Contents (Elt F)),
    unary main_v219 main_v220 (broadcastInDim S4096x128 ![0, 1] bcast_S1x128_S4096x128_0_1 : (⟨S1x128, .f32⟩ : BufTy).Contents (Elt F) → (⟨S4096x128, .f32⟩ : BufTy).Contents (Elt F)),
    binary main_v218 main_v220 main_v221 (addf : (⟨S4096x128, .f32⟩ : BufTy).Contents (Elt F) → (⟨S4096x128, .f32⟩ : BufTy).Contents (Elt F) → (⟨S4096x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S4096x128, .f32⟩) main_call11_v0) (broadcastInDim S4096x128 ![] bcast_S_S4096x128),
    TRef.binary (TRef.of (T := ⟨S4096x128, .f32⟩) main_v221) (TRef.of (T := ⟨S4096x128, .f32⟩) main_call11_v0) (TRef.of (T := ⟨S4096x128, .f32⟩) main_v222) maximumf ]

abbrev ops5 : List (HloOp τ sig (Elt F)) :=
  [ reshape main_v222 main_v223 rfl shapeCasts_S4096x128_S1024x2x2x128,
    reshape main_v176 main_v224 rfl shapeCasts_S4096x128_S1024x2x2x128,
    reshape main_v191 main_v225 rfl shapeCasts_S4096x128_S1024x2x2x128,
    unary main_v25 main_v226 ((extractStridedSlice S2048 ![1024] · slices_S64512_S2048_1024) : (⟨S64512, .f32⟩ : BufTy).Contents (Elt F) → (⟨S2048, .f32⟩ : BufTy).Contents (Elt F)),
    reshape main_v226 main_v227 rfl shapeCasts_S2048_S1024x2x1,
    unary main_v26 main_v228 ((extractStridedSlice S2048 ![1024] · slices_S64512_S2048_1024) : (⟨S64512, .f32⟩ : BufTy).Contents (Elt F) → (⟨S2048, .f32⟩ : BufTy).Contents (Elt F)),
    reshape main_v228 main_v229 rfl shapeCasts_S2048_S1024x2x1,
    unary main_v223 main_v230 ((extractStridedSlice S1024x2x1x128 ![0, 0, 0, 0] · slices_S1024x2x2x128_S1024x2x1x128_0_0_0_0) : (⟨S1024x2x2x128, .f32⟩ : BufTy).Contents (Elt F) → (⟨S1024x2x1x128, .f32⟩ : BufTy).Contents (Elt F)),
    reshape main_v230 main_v231 rfl shapeCasts_S1024x2x1x128_S1024x2x128,
    unary main_v227 main_v232 (broadcastInDim S1024x2x128 ![0, 1, 2] bcast_S1024x2x1_S1024x2x128_0_1_2 : (⟨S1024x2x1, .f32⟩ : BufTy).Contents (Elt F) → (⟨S1024x2x128, .f32⟩ : BufTy).Contents (Elt F)),
    binary main_v231 main_v232 main_v233 (mulf : (⟨S1024x2x128, .f32⟩ : BufTy).Contents (Elt F) → (⟨S1024x2x128, .f32⟩ : BufTy).Contents (Elt F) → (⟨S1024x2x128, .f32⟩ : BufTy).Contents (Elt F)),
    reshape main_v233 main_v234 rfl shapeCasts_S1024x2x128_S2048x128,
    unary main_v224 main_v235 ((extractStridedSlice S1024x2x1x128 ![0, 0, 0, 0] · slices_S1024x2x2x128_S1024x2x1x128_0_0_0_0) : (⟨S1024x2x2x128, .f32⟩ : BufTy).Contents (Elt F) → (⟨S1024x2x1x128, .f32⟩ : BufTy).Contents (Elt F)),
    reshape main_v235 main_v236 rfl shapeCasts_S1024x2x1x128_S1024x2x128,
    unary main_v227 main_v237 (broadcastInDim S1024x2x128 ![0, 1, 2] bcast_S1024x2x1_S1024x2x128_0_1_2 : (⟨S1024x2x1, .f32⟩ : BufTy).Contents (Elt F) → (⟨S1024x2x128, .f32⟩ : BufTy).Contents (Elt F)),
    binary main_v236 main_v237 main_v238 (mulf : (⟨S1024x2x128, .f32⟩ : BufTy).Contents (Elt F) → (⟨S1024x2x128, .f32⟩ : BufTy).Contents (Elt F) → (⟨S1024x2x128, .f32⟩ : BufTy).Contents (Elt F)),
    reshape main_v238 main_v239 rfl shapeCasts_S1024x2x128_S2048x128,
    unary main_v225 main_v240 ((extractStridedSlice S1024x2x1x128 ![0, 0, 0, 0] · slices_S1024x2x2x128_S1024x2x1x128_0_0_0_0) : (⟨S1024x2x2x128, .f32⟩ : BufTy).Contents (Elt F) → (⟨S1024x2x1x128, .f32⟩ : BufTy).Contents (Elt F)),
    reshape main_v240 main_v241 rfl shapeCasts_S1024x2x1x128_S1024x2x128,
    unary main_v227 main_v242 (broadcastInDim S1024x2x128 ![0, 1, 2] bcast_S1024x2x1_S1024x2x128_0_1_2 : (⟨S1024x2x1, .f32⟩ : BufTy).Contents (Elt F) → (⟨S1024x2x128, .f32⟩ : BufTy).Contents (Elt F)),
    binary main_v241 main_v242 main_v243 (mulf : (⟨S1024x2x128, .f32⟩ : BufTy).Contents (Elt F) → (⟨S1024x2x128, .f32⟩ : BufTy).Contents (Elt F) → (⟨S1024x2x128, .f32⟩ : BufTy).Contents (Elt F)),
    reshape main_v243 main_v244 rfl shapeCasts_S1024x2x128_S2048x128,
    unary main_v223 main_v245 ((extractStridedSlice S1024x2x1x128 ![0, 0, 1, 0] · slices_S1024x2x2x128_S1024x2x1x128_0_0_1_0) : (⟨S1024x2x2x128, .f32⟩ : BufTy).Contents (Elt F) → (⟨S1024x2x1x128, .f32⟩ : BufTy).Contents (Elt F)),
    reshape main_v245 main_v246 rfl shapeCasts_S1024x2x1x128_S1024x2x128,
    unary main_v229 main_v247 (broadcastInDim S1024x2x128 ![0, 1, 2] bcast_S1024x2x1_S1024x2x128_0_1_2 : (⟨S1024x2x1, .f32⟩ : BufTy).Contents (Elt F) → (⟨S1024x2x128, .f32⟩ : BufTy).Contents (Elt F)),
    binary main_v246 main_v247 main_v248 (mulf : (⟨S1024x2x128, .f32⟩ : BufTy).Contents (Elt F) → (⟨S1024x2x128, .f32⟩ : BufTy).Contents (Elt F) → (⟨S1024x2x128, .f32⟩ : BufTy).Contents (Elt F)),
    reshape main_v248 main_v249 rfl shapeCasts_S1024x2x128_S2048x128,
    unary main_v224 main_v250 ((extractStridedSlice S1024x2x1x128 ![0, 0, 1, 0] · slices_S1024x2x2x128_S1024x2x1x128_0_0_1_0) : (⟨S1024x2x2x128, .f32⟩ : BufTy).Contents (Elt F) → (⟨S1024x2x1x128, .f32⟩ : BufTy).Contents (Elt F)),
    reshape main_v250 main_v251 rfl shapeCasts_S1024x2x1x128_S1024x2x128,
    unary main_v229 main_v252 (broadcastInDim S1024x2x128 ![0, 1, 2] bcast_S1024x2x1_S1024x2x128_0_1_2 : (⟨S1024x2x1, .f32⟩ : BufTy).Contents (Elt F) → (⟨S1024x2x128, .f32⟩ : BufTy).Contents (Elt F)),
    binary main_v251 main_v252 main_v253 (mulf : (⟨S1024x2x128, .f32⟩ : BufTy).Contents (Elt F) → (⟨S1024x2x128, .f32⟩ : BufTy).Contents (Elt F) → (⟨S1024x2x128, .f32⟩ : BufTy).Contents (Elt F)),
    reshape main_v253 main_v254 rfl shapeCasts_S1024x2x128_S2048x128,
    unary main_v225 main_v255 ((extractStridedSlice S1024x2x1x128 ![0, 0, 1, 0] · slices_S1024x2x2x128_S1024x2x1x128_0_0_1_0) : (⟨S1024x2x2x128, .f32⟩ : BufTy).Contents (Elt F) → (⟨S1024x2x1x128, .f32⟩ : BufTy).Contents (Elt F)),
    reshape main_v255 main_v256 rfl shapeCasts_S1024x2x1x128_S1024x2x128,
    unary main_v229 main_v257 (broadcastInDim S1024x2x128 ![0, 1, 2] bcast_S1024x2x1_S1024x2x128_0_1_2 : (⟨S1024x2x1, .f32⟩ : BufTy).Contents (Elt F) → (⟨S1024x2x128, .f32⟩ : BufTy).Contents (Elt F)),
    binary main_v256 main_v257 main_v258 (mulf : (⟨S1024x2x128, .f32⟩ : BufTy).Contents (Elt F) → (⟨S1024x2x128, .f32⟩ : BufTy).Contents (Elt F) → (⟨S1024x2x128, .f32⟩ : BufTy).Contents (Elt F)),
    reshape main_v258 main_v259 rfl shapeCasts_S1024x2x128_S2048x128,
    unary main_v3 main_v260 ((extractStridedSlice S2048x128 ![1024, 0] · slices_S64512x128_S2048x128_1024_0) : (⟨S64512x128, .f32⟩ : BufTy).Contents (Elt F) → (⟨S2048x128, .f32⟩ : BufTy).Contents (Elt F)),
    unary main_v7 main_v261 ((extractStridedSlice S2048x128 ![1024, 0] · slices_S64512x128_S2048x128_1024_0) : (⟨S64512x128, .f32⟩ : BufTy).Contents (Elt F) → (⟨S2048x128, .f32⟩ : BufTy).Contents (Elt F)),
    unary main_v19 main_v262 ((extractStridedSlice S2048x128 ![1024, 0] · slices_S64512x128_S2048x128_1024_0) : (⟨S64512x128, .f32⟩ : BufTy).Contents (Elt F) → (⟨S2048x128, .f32⟩ : BufTy).Contents (Elt F)),
    unary main_v24 main_v263 ((extractStridedSlice S2048x128 ![1024, 0] · slices_S64512x128_S2048x128_1024_0) : (⟨S64512x128, .f32⟩ : BufTy).Contents (Elt F) → (⟨S2048x128, .f32⟩ : BufTy).Contents (Elt F)),
    unary main_v14 main_v264 ((extractStridedSlice S2048x128 ![1024, 0] · slices_S64512x128_S2048x128_1024_0) : (⟨S64512x128, .f32⟩ : BufTy).Contents (Elt F) → (⟨S2048x128, .f32⟩ : BufTy).Contents (Elt F)),
    nary ![main_v260, main_v261, main_v262, main_v263, main_v264, main_v234, main_v249, main_v239, main_v244, main_v254, main_v259] main_v265 (fun u => concatenate S2048x1408 1 [⟨S2048x128, u 0⟩, ⟨S2048x128, u 1⟩, ⟨S2048x128, u 2⟩, ⟨S2048x128, u 3⟩, ⟨S2048x128, u 4⟩, ⟨S2048x128, u 5⟩, ⟨S2048x128, u 6⟩, ⟨S2048x128, u 7⟩, ⟨S2048x128, u 8⟩, ⟨S2048x128, u 9⟩, ⟨S2048x128, u 10⟩] concatenates_S2048x128_S2048x128_S2048x128_S2048x128_S2048x128_S2048x128_S2048x128_S2048x128_S2048x128_S2048x128_S2048x128_S2048x1408_d1),
    binary main_v265 main_arg16 main_v266 ((fun l r => Host.dotGeneral dot_S2048x1408_S1408x512_S2048x512_1_0_0_1_n_n none l r) : (⟨S2048x1408, .f32⟩ : BufTy).Contents (Elt F) → (⟨S1408x512, .f32⟩ : BufTy).Contents (Elt F) → (⟨S2048x512, .f32⟩ : BufTy).Contents (Elt F)),
    unary main_arg17 main_v267 (broadcastInDim S1x512 ![1] bcast_S512_S1x512_1 : (⟨S512, .f32⟩ : BufTy).Contents (Elt F) → (⟨S1x512, .f32⟩ : BufTy).Contents (Elt F)),
    unary main_v267 main_v268 (broadcastInDim S2048x512 ![0, 1] bcast_S1x512_S2048x512_0_1 : (⟨S1x512, .f32⟩ : BufTy).Contents (Elt F) → (⟨S2048x512, .f32⟩ : BufTy).Contents (Elt F)),
    binary main_v266 main_v268 main_v269 (addf : (⟨S2048x512, .f32⟩ : BufTy).Contents (Elt F) → (⟨S2048x512, .f32⟩ : BufTy).Contents (Elt F) → (⟨S2048x512, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S2048x512, .f32⟩) main_call12_v0) (broadcastInDim S2048x512 ![] bcast_S_S2048x512),
    TRef.binary (TRef.of (T := ⟨S2048x512, .f32⟩) main_v269) (TRef.of (T := ⟨S2048x512, .f32⟩) main_call12_v0) (TRef.of (T := ⟨S2048x512, .f32⟩) main_v270) maximumf,
    binary main_v270 main_arg18 main_v271 ((fun l r => Host.dotGeneral dot_S2048x512_S512x256_S2048x256_1_0_0_1_n_n none l r) : (⟨S2048x512, .f32⟩ : BufTy).Contents (Elt F) → (⟨S512x256, .f32⟩ : BufTy).Contents (Elt F) → (⟨S2048x256, .f32⟩ : BufTy).Contents (Elt F)),
    unary main_arg19 main_v272 (broadcastInDim S1x256 ![1] bcast_S256_S1x256_1 : (⟨S256, .f32⟩ : BufTy).Contents (Elt F) → (⟨S1x256, .f32⟩ : BufTy).Contents (Elt F)),
    unary main_v272 main_v273 (broadcastInDim S2048x256 ![0, 1] bcast_S1x256_S2048x256_0_1 : (⟨S1x256, .f32⟩ : BufTy).Contents (Elt F) → (⟨S2048x256, .f32⟩ : BufTy).Contents (Elt F)),
    binary main_v271 main_v273 main_v274 (addf : (⟨S2048x256, .f32⟩ : BufTy).Contents (Elt F) → (⟨S2048x256, .f32⟩ : BufTy).Contents (Elt F) → (⟨S2048x256, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S2048x256, .f32⟩) main_call13_v0) (broadcastInDim S2048x256 ![] bcast_S_S2048x256),
    TRef.binary (TRef.of (T := ⟨S2048x256, .f32⟩) main_v274) (TRef.of (T := ⟨S2048x256, .f32⟩) main_call13_v0) (TRef.of (T := ⟨S2048x256, .f32⟩) main_v275) maximumf,
    binary main_v275 main_arg20 main_v276 ((fun l r => Host.dotGeneral dot_S2048x256_S256x128_S2048x128_1_0_0_1_n_n none l r) : (⟨S2048x256, .f32⟩ : BufTy).Contents (Elt F) → (⟨S256x128, .f32⟩ : BufTy).Contents (Elt F) → (⟨S2048x128, .f32⟩ : BufTy).Contents (Elt F)),
    unary main_arg21 main_v277 (broadcastInDim S1x128 ![1] bcast_S128_S1x128_1 : (⟨S128, .f32⟩ : BufTy).Contents (Elt F) → (⟨S1x128, .f32⟩ : BufTy).Contents (Elt F)),
    unary main_v277 main_v278 (broadcastInDim S2048x128 ![0, 1] bcast_S1x128_S2048x128_0_1 : (⟨S1x128, .f32⟩ : BufTy).Contents (Elt F) → (⟨S2048x128, .f32⟩ : BufTy).Contents (Elt F)),
    binary main_v276 main_v278 main_v279 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S2048x128, .f32⟩) main_call14_v0) (broadcastInDim S2048x128 ![] bcast_S_S2048x128),
    TRef.binary (TRef.of (T := ⟨S2048x128, .f32⟩) main_v279) (TRef.of (T := ⟨S2048x128, .f32⟩) main_call14_v0) (TRef.of (T := ⟨S2048x128, .f32⟩) main_v280) maximumf ]

abbrev ops6 : List (HloOp τ sig (Elt F)) :=
  [ reshape main_v280 main_v281 rfl shapeCasts_S2048x128_S1024x1x2x128,
    reshape main_v234 main_v282 rfl shapeCasts_S2048x128_S1024x1x2x128,
    reshape main_v249 main_v283 rfl shapeCasts_S2048x128_S1024x1x2x128,
    unary main_v25 main_v284 ((extractStridedSlice S1024 ![0] · slices_S64512_S1024_0) : (⟨S64512, .f32⟩ : BufTy).Contents (Elt F) → (⟨S1024, .f32⟩ : BufTy).Contents (Elt F)),
    reshape main_v284 main_v285 rfl shapeCasts_S1024_S1024x1x1,
    unary main_v26 main_v286 ((extractStridedSlice S1024 ![0] · slices_S64512_S1024_0) : (⟨S64512, .f32⟩ : BufTy).Contents (Elt F) → (⟨S1024, .f32⟩ : BufTy).Contents (Elt F)),
    reshape main_v286 main_v287 rfl shapeCasts_S1024_S1024x1x1,
    unary main_v281 main_v288 ((extractStridedSlice S1024x1x1x128 ![0, 0, 0, 0] · slices_S1024x1x2x128_S1024x1x1x128_0_0_0_0) : (⟨S1024x1x2x128, .f32⟩ : BufTy).Contents (Elt F) → (⟨S1024x1x1x128, .f32⟩ : BufTy).Contents (Elt F)),
    reshape main_v288 main_v289 rfl shapeCasts_S1024x1x1x128_S1024x1x128,
    unary main_v285 main_v290 (broadcastInDim S1024x1x128 ![0, 1, 2] bcast_S1024x1x1_S1024x1x128_0_1_2 : (⟨S1024x1x1, .f32⟩ : BufTy).Contents (Elt F) → (⟨S1024x1x128, .f32⟩ : BufTy).Contents (Elt F)),
    binary main_v289 main_v290 main_v291 (mulf : (⟨S1024x1x128, .f32⟩ : BufTy).Contents (Elt F) → (⟨S1024x1x128, .f32⟩ : BufTy).Contents (Elt F) → (⟨S1024x1x128, .f32⟩ : BufTy).Contents (Elt F)),
    reshape main_v291 main_v292 rfl shapeCasts_S1024x1x128_S1024x128,
    unary main_v282 main_v293 ((extractStridedSlice S1024x1x1x128 ![0, 0, 0, 0] · slices_S1024x1x2x128_S1024x1x1x128_0_0_0_0) : (⟨S1024x1x2x128, .f32⟩ : BufTy).Contents (Elt F) → (⟨S1024x1x1x128, .f32⟩ : BufTy).Contents (Elt F)),
    reshape main_v293 main_v294 rfl shapeCasts_S1024x1x1x128_S1024x1x128,
    unary main_v285 main_v295 (broadcastInDim S1024x1x128 ![0, 1, 2] bcast_S1024x1x1_S1024x1x128_0_1_2 : (⟨S1024x1x1, .f32⟩ : BufTy).Contents (Elt F) → (⟨S1024x1x128, .f32⟩ : BufTy).Contents (Elt F)),
    binary main_v294 main_v295 main_v296 (mulf : (⟨S1024x1x128, .f32⟩ : BufTy).Contents (Elt F) → (⟨S1024x1x128, .f32⟩ : BufTy).Contents (Elt F) → (⟨S1024x1x128, .f32⟩ : BufTy).Contents (Elt F)),
    reshape main_v296 main_v297 rfl shapeCasts_S1024x1x128_S1024x128,
    unary main_v283 main_v298 ((extractStridedSlice S1024x1x1x128 ![0, 0, 0, 0] · slices_S1024x1x2x128_S1024x1x1x128_0_0_0_0) : (⟨S1024x1x2x128, .f32⟩ : BufTy).Contents (Elt F) → (⟨S1024x1x1x128, .f32⟩ : BufTy).Contents (Elt F)),
    reshape main_v298 main_v299 rfl shapeCasts_S1024x1x1x128_S1024x1x128,
    unary main_v285 main_v300 (broadcastInDim S1024x1x128 ![0, 1, 2] bcast_S1024x1x1_S1024x1x128_0_1_2 : (⟨S1024x1x1, .f32⟩ : BufTy).Contents (Elt F) → (⟨S1024x1x128, .f32⟩ : BufTy).Contents (Elt F)),
    binary main_v299 main_v300 main_v301 (mulf : (⟨S1024x1x128, .f32⟩ : BufTy).Contents (Elt F) → (⟨S1024x1x128, .f32⟩ : BufTy).Contents (Elt F) → (⟨S1024x1x128, .f32⟩ : BufTy).Contents (Elt F)),
    reshape main_v301 main_v302 rfl shapeCasts_S1024x1x128_S1024x128,
    unary main_v281 main_v303 ((extractStridedSlice S1024x1x1x128 ![0, 0, 1, 0] · slices_S1024x1x2x128_S1024x1x1x128_0_0_1_0) : (⟨S1024x1x2x128, .f32⟩ : BufTy).Contents (Elt F) → (⟨S1024x1x1x128, .f32⟩ : BufTy).Contents (Elt F)),
    reshape main_v303 main_v304 rfl shapeCasts_S1024x1x1x128_S1024x1x128,
    unary main_v287 main_v305 (broadcastInDim S1024x1x128 ![0, 1, 2] bcast_S1024x1x1_S1024x1x128_0_1_2 : (⟨S1024x1x1, .f32⟩ : BufTy).Contents (Elt F) → (⟨S1024x1x128, .f32⟩ : BufTy).Contents (Elt F)),
    binary main_v304 main_v305 main_v306 (mulf : (⟨S1024x1x128, .f32⟩ : BufTy).Contents (Elt F) → (⟨S1024x1x128, .f32⟩ : BufTy).Contents (Elt F) → (⟨S1024x1x128, .f32⟩ : BufTy).Contents (Elt F)),
    reshape main_v306 main_v307 rfl shapeCasts_S1024x1x128_S1024x128,
    unary main_v282 main_v308 ((extractStridedSlice S1024x1x1x128 ![0, 0, 1, 0] · slices_S1024x1x2x128_S1024x1x1x128_0_0_1_0) : (⟨S1024x1x2x128, .f32⟩ : BufTy).Contents (Elt F) → (⟨S1024x1x1x128, .f32⟩ : BufTy).Contents (Elt F)),
    reshape main_v308 main_v309 rfl shapeCasts_S1024x1x1x128_S1024x1x128,
    unary main_v287 main_v310 (broadcastInDim S1024x1x128 ![0, 1, 2] bcast_S1024x1x1_S1024x1x128_0_1_2 : (⟨S1024x1x1, .f32⟩ : BufTy).Contents (Elt F) → (⟨S1024x1x128, .f32⟩ : BufTy).Contents (Elt F)),
    binary main_v309 main_v310 main_v311 (mulf : (⟨S1024x1x128, .f32⟩ : BufTy).Contents (Elt F) → (⟨S1024x1x128, .f32⟩ : BufTy).Contents (Elt F) → (⟨S1024x1x128, .f32⟩ : BufTy).Contents (Elt F)),
    reshape main_v311 main_v312 rfl shapeCasts_S1024x1x128_S1024x128,
    unary main_v283 main_v313 ((extractStridedSlice S1024x1x1x128 ![0, 0, 1, 0] · slices_S1024x1x2x128_S1024x1x1x128_0_0_1_0) : (⟨S1024x1x2x128, .f32⟩ : BufTy).Contents (Elt F) → (⟨S1024x1x1x128, .f32⟩ : BufTy).Contents (Elt F)),
    reshape main_v313 main_v314 rfl shapeCasts_S1024x1x1x128_S1024x1x128,
    unary main_v287 main_v315 (broadcastInDim S1024x1x128 ![0, 1, 2] bcast_S1024x1x1_S1024x1x128_0_1_2 : (⟨S1024x1x1, .f32⟩ : BufTy).Contents (Elt F) → (⟨S1024x1x128, .f32⟩ : BufTy).Contents (Elt F)),
    binary main_v314 main_v315 main_v316 (mulf : (⟨S1024x1x128, .f32⟩ : BufTy).Contents (Elt F) → (⟨S1024x1x128, .f32⟩ : BufTy).Contents (Elt F) → (⟨S1024x1x128, .f32⟩ : BufTy).Contents (Elt F)),
    reshape main_v316 main_v317 rfl shapeCasts_S1024x1x128_S1024x128,
    unary main_v3 main_v318 ((extractStridedSlice S1024x128 ![0, 0] · slices_S64512x128_S1024x128_0_0) : (⟨S64512x128, .f32⟩ : BufTy).Contents (Elt F) → (⟨S1024x128, .f32⟩ : BufTy).Contents (Elt F)),
    unary main_v7 main_v319 ((extractStridedSlice S1024x128 ![0, 0] · slices_S64512x128_S1024x128_0_0) : (⟨S64512x128, .f32⟩ : BufTy).Contents (Elt F) → (⟨S1024x128, .f32⟩ : BufTy).Contents (Elt F)),
    unary main_v19 main_v320 ((extractStridedSlice S1024x128 ![0, 0] · slices_S64512x128_S1024x128_0_0) : (⟨S64512x128, .f32⟩ : BufTy).Contents (Elt F) → (⟨S1024x128, .f32⟩ : BufTy).Contents (Elt F)),
    unary main_v24 main_v321 ((extractStridedSlice S1024x128 ![0, 0] · slices_S64512x128_S1024x128_0_0) : (⟨S64512x128, .f32⟩ : BufTy).Contents (Elt F) → (⟨S1024x128, .f32⟩ : BufTy).Contents (Elt F)),
    unary main_v14 main_v322 ((extractStridedSlice S1024x128 ![0, 0] · slices_S64512x128_S1024x128_0_0) : (⟨S64512x128, .f32⟩ : BufTy).Contents (Elt F) → (⟨S1024x128, .f32⟩ : BufTy).Contents (Elt F)),
    nary ![main_v318, main_v319, main_v320, main_v321, main_v322, main_v292, main_v307, main_v297, main_v302, main_v312, main_v317] main_v323 (fun u => concatenate S1024x1408 1 [⟨S1024x128, u 0⟩, ⟨S1024x128, u 1⟩, ⟨S1024x128, u 2⟩, ⟨S1024x128, u 3⟩, ⟨S1024x128, u 4⟩, ⟨S1024x128, u 5⟩, ⟨S1024x128, u 6⟩, ⟨S1024x128, u 7⟩, ⟨S1024x128, u 8⟩, ⟨S1024x128, u 9⟩, ⟨S1024x128, u 10⟩] concatenates_S1024x128_S1024x128_S1024x128_S1024x128_S1024x128_S1024x128_S1024x128_S1024x128_S1024x128_S1024x128_S1024x128_S1024x1408_d1),
    binary main_v323 main_arg16 main_v324 ((fun l r => Host.dotGeneral dot_S1024x1408_S1408x512_S1024x512_1_0_0_1_n_n none l r) : (⟨S1024x1408, .f32⟩ : BufTy).Contents (Elt F) → (⟨S1408x512, .f32⟩ : BufTy).Contents (Elt F) → (⟨S1024x512, .f32⟩ : BufTy).Contents (Elt F)),
    unary main_arg17 main_v325 (broadcastInDim S1x512 ![1] bcast_S512_S1x512_1 : (⟨S512, .f32⟩ : BufTy).Contents (Elt F) → (⟨S1x512, .f32⟩ : BufTy).Contents (Elt F)),
    unary main_v325 main_v326 (broadcastInDim S1024x512 ![0, 1] bcast_S1x512_S1024x512_0_1 : (⟨S1x512, .f32⟩ : BufTy).Contents (Elt F) → (⟨S1024x512, .f32⟩ : BufTy).Contents (Elt F)),
    binary main_v324 main_v326 main_v327 (addf : (⟨S1024x512, .f32⟩ : BufTy).Contents (Elt F) → (⟨S1024x512, .f32⟩ : BufTy).Contents (Elt F) → (⟨S1024x512, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S1024x512, .f32⟩) main_call15_v0) (broadcastInDim S1024x512 ![] bcast_S_S1024x512),
    TRef.binary (TRef.of (T := ⟨S1024x512, .f32⟩) main_v327) (TRef.of (T := ⟨S1024x512, .f32⟩) main_call15_v0) (TRef.of (T := ⟨S1024x512, .f32⟩) main_v328) maximumf,
    binary main_v328 main_arg18 main_v329 ((fun l r => Host.dotGeneral dot_S1024x512_S512x256_S1024x256_1_0_0_1_n_n none l r) : (⟨S1024x512, .f32⟩ : BufTy).Contents (Elt F) → (⟨S512x256, .f32⟩ : BufTy).Contents (Elt F) → (⟨S1024x256, .f32⟩ : BufTy).Contents (Elt F)),
    unary main_arg19 main_v330 (broadcastInDim S1x256 ![1] bcast_S256_S1x256_1 : (⟨S256, .f32⟩ : BufTy).Contents (Elt F) → (⟨S1x256, .f32⟩ : BufTy).Contents (Elt F)),
    unary main_v330 main_v331 (broadcastInDim S1024x256 ![0, 1] bcast_S1x256_S1024x256_0_1 : (⟨S1x256, .f32⟩ : BufTy).Contents (Elt F) → (⟨S1024x256, .f32⟩ : BufTy).Contents (Elt F)),
    binary main_v329 main_v331 main_v332 (addf : (⟨S1024x256, .f32⟩ : BufTy).Contents (Elt F) → (⟨S1024x256, .f32⟩ : BufTy).Contents (Elt F) → (⟨S1024x256, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S1024x256, .f32⟩) main_call16_v0) (broadcastInDim S1024x256 ![] bcast_S_S1024x256),
    TRef.binary (TRef.of (T := ⟨S1024x256, .f32⟩) main_v332) (TRef.of (T := ⟨S1024x256, .f32⟩) main_call16_v0) (TRef.of (T := ⟨S1024x256, .f32⟩) main_v333) maximumf,
    binary main_v333 main_arg20 main_v334 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)),
    unary main_arg21 main_v335 (broadcastInDim S1x128 ![1] bcast_S128_S1x128_1 : (⟨S128, .f32⟩ : BufTy).Contents (Elt F) → (⟨S1x128, .f32⟩ : BufTy).Contents (Elt F)),
    unary main_v335 main_v336 (broadcastInDim S1024x128 ![0, 1] bcast_S1x128_S1024x128_0_1 : (⟨S1x128, .f32⟩ : BufTy).Contents (Elt F) → (⟨S1024x128, .f32⟩ : BufTy).Contents (Elt F)),
    binary main_v334 main_v336 main_v337 (addf : (⟨S1024x128, .f32⟩ : BufTy).Contents (Elt F) → (⟨S1024x128, .f32⟩ : BufTy).Contents (Elt F) → (⟨S1024x128, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S1024x128, .f32⟩) main_call17_v0) (broadcastInDim S1024x128 ![] bcast_S_S1024x128),
    TRef.binary (TRef.of (T := ⟨S1024x128, .f32⟩) main_v337) (TRef.of (T := ⟨S1024x128, .f32⟩) main_call17_v0) (TRef.of (T := ⟨S1024x128, .f32⟩) main_v338) maximumf ]

abbrev ops7 : List (HloOp τ sig (Elt F)) :=
  [ binary main_v338 main_arg22 main_v339 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    unary main_arg23 main_v340 (broadcastInDim S1x128 ![1] bcast_S128_S1x128_1 : (⟨S128, .f32⟩ : BufTy).Contents (Elt F) → (⟨S1x128, .f32⟩ : BufTy).Contents (Elt F)),
    unary main_v340 main_v341 (broadcastInDim S1024x128 ![0, 1] bcast_S1x128_S1024x128_0_1 : (⟨S1x128, .f32⟩ : BufTy).Contents (Elt F) → (⟨S1024x128, .f32⟩ : BufTy).Contents (Elt F)),
    binary main_v339 main_v341 main_v342 (addf : (⟨S1024x128, .f32⟩ : BufTy).Contents (Elt F) → (⟨S1024x128, .f32⟩ : BufTy).Contents (Elt F) → (⟨S1024x128, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S1024x128, .f32⟩) main_call18_v0) (broadcastInDim S1024x128 ![] bcast_S_S1024x128),
    TRef.binary (TRef.of (T := ⟨S1024x128, .f32⟩) main_v342) (TRef.of (T := ⟨S1024x128, .f32⟩) main_call18_v0) (TRef.of (T := ⟨S1024x128, .f32⟩) main_v343) maximumf,
    binary main_v343 main_arg24 main_v344 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    unary main_arg25 main_v345 (broadcastInDim S1x128 ![1] bcast_S128_S1x128_1 : (⟨S128, .f32⟩ : BufTy).Contents (Elt F) → (⟨S1x128, .f32⟩ : BufTy).Contents (Elt F)),
    unary main_v345 main_v346 (broadcastInDim S1024x128 ![0, 1] bcast_S1x128_S1024x128_0_1 : (⟨S1x128, .f32⟩ : BufTy).Contents (Elt F) → (⟨S1024x128, .f32⟩ : BufTy).Contents (Elt F)),
    binary main_v344 main_v346 main_v347 (addf : (⟨S1024x128, .f32⟩ : BufTy).Contents (Elt F) → (⟨S1024x128, .f32⟩ : BufTy).Contents (Elt F) → (⟨S1024x128, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S1024x128, .f32⟩) main_call19_v0) (broadcastInDim S1024x128 ![] bcast_S_S1024x128),
    TRef.binary (TRef.of (T := ⟨S1024x128, .f32⟩) main_v347) (TRef.of (T := ⟨S1024x128, .f32⟩) main_call19_v0) (TRef.of (T := ⟨S1024x128, .f32⟩) main_v348) maximumf,
    binary main_v348 main_arg26 main_v349 ((fun l r => Host.dotGeneral dot_S1024x128_S128x1_S1024x1_1_0_0_1_n_n none l r) : (⟨S1024x128, .f32⟩ : BufTy).Contents (Elt F) → (⟨S128x1, .f32⟩ : BufTy).Contents (Elt F) → (⟨S1024x1, .f32⟩ : BufTy).Contents (Elt F)),
    unary main_arg27 main_v350 (broadcastInDim S1x1 ![1] bcast_S1_S1x1_1 : (⟨S1, .f32⟩ : BufTy).Contents (Elt F) → (⟨S1x1, .f32⟩ : BufTy).Contents (Elt F)),
    unary main_v350 main_v351 (broadcastInDim S1024x1 ![0, 1] bcast_S1x1_S1024x1_0_1 : (⟨S1x1, .f32⟩ : BufTy).Contents (Elt F) → (⟨S1024x1, .f32⟩ : BufTy).Contents (Elt F)),
    binary main_v349 main_v351 main_v352 (addf : (⟨S1024x1, .f32⟩ : BufTy).Contents (Elt F) → (⟨S1024x1, .f32⟩ : BufTy).Contents (Elt F) → (⟨S1024x1, .f32⟩ : BufTy).Contents (Elt F)),
    unary main_v352 main_v353 (Host.negf : (⟨S1024x1, .f32⟩ : BufTy).Contents (Elt F) → (⟨S1024x1, .f32⟩ : BufTy).Contents (Elt F)),
    unary main_v353 main_v354 (Host.exp : (⟨S1024x1, .f32⟩ : BufTy).Contents (Elt F) → (⟨S1024x1, .f32⟩ : BufTy).Contents (Elt F)),
    nullary main_cst_2 (constant S_ .f32 0x3F800000#32),
    unary main_cst_2 main_v355 (broadcastInDim S1024x1 ![] bcast_S_S1024x1 : (⟨S_, .f32⟩ : BufTy).Contents (Elt F) → (⟨S1024x1, .f32⟩ : BufTy).Contents (Elt F)),
    binary main_v355 main_v354 main_v356 (addf : (⟨S1024x1, .f32⟩ : BufTy).Contents (Elt F) → (⟨S1024x1, .f32⟩ : BufTy).Contents (Elt F) → (⟨S1024x1, .f32⟩ : BufTy).Contents (Elt F)),
    nullary main_cst_3 (constant S_ .f32 0x3F800000#32),
    unary main_cst_3 main_v357 (broadcastInDim S1024x1 ![] bcast_S_S1024x1 : (⟨S_, .f32⟩ : BufTy).Contents (Elt F) → (⟨S1024x1, .f32⟩ : BufTy).Contents (Elt F)),
    binary main_v357 main_v356 main_v358 (Host.divf : (⟨S1024x1, .f32⟩ : BufTy).Contents (Elt F) → (⟨S1024x1, .f32⟩ : BufTy).Contents (Elt F) → (⟨S1024x1, .f32⟩ : BufTy).Contents (Elt F)),
    binary main_v338 main_arg28 main_v359 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    unary main_arg29 main_v360 (broadcastInDim S1x128 ![1] bcast_S128_S1x128_1 : (⟨S128, .f32⟩ : BufTy).Contents (Elt F) → (⟨S1x128, .f32⟩ : BufTy).Contents (Elt F)),
    unary main_v360 main_v361 (broadcastInDim S1024x128 ![0, 1] bcast_S1x128_S1024x128_0_1 : (⟨S1x128, .f32⟩ : BufTy).Contents (Elt F) → (⟨S1024x128, .f32⟩ : BufTy).Contents (Elt F)),
    binary main_v359 main_v361 main_v362 (addf : (⟨S1024x128, .f32⟩ : BufTy).Contents (Elt F) → (⟨S1024x128, .f32⟩ : BufTy).Contents (Elt F) → (⟨S1024x128, .f32⟩ : BufTy).Contents (Elt F)),
    TRef.nullary (TRef.of (T := ⟨S_, .f32⟩) main_call20_cst) (constant S_ .f32 0x00000000#32),
    TRef.unary (TRef.of (T := ⟨S_, .f32⟩) main_call20_cst) (TRef.of (T := ⟨S1024x128, .f32⟩) main_call20_v0) (broadcastInDim S1024x128 ![] bcast_S_S1024x128),
    TRef.binary (TRef.of (T := ⟨S1024x128, .f32⟩) main_v362) (TRef.of (T := ⟨S1024x128, .f32⟩) main_call20_v0) (TRef.of (T := ⟨S1024x128, .f32⟩) main_v363) maximumf,
    binary main_v363 main_arg30 main_v364 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    unary main_arg31 main_v365 (broadcastInDim S1x128 ![1] bcast_S128_S1x128_1 : (⟨S128, .f32⟩ : BufTy).Contents (Elt F) → (⟨S1x128, .f32⟩ : BufTy).Contents (Elt F)),
    unary main_v365 main_v366 (broadcastInDim S1024x128 ![0, 1] bcast_S1x128_S1024x128_0_1 : (⟨S1x128, .f32⟩ : BufTy).Contents (Elt F) → (⟨S1024x128, .f32⟩ : BufTy).Contents (Elt F)),
    binary main_v364 main_v366 main_v367 (addf : (⟨S1024x128, .f32⟩ : BufTy).Contents (Elt F) → (⟨S1024x128, .f32⟩ : BufTy).Contents (Elt F) → (⟨S1024x128, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S1024x128, .f32⟩) main_call21_v0) (broadcastInDim S1024x128 ![] bcast_S_S1024x128),
    TRef.binary (TRef.of (T := ⟨S1024x128, .f32⟩) main_v367) (TRef.of (T := ⟨S1024x128, .f32⟩) main_call21_v0) (TRef.of (T := ⟨S1024x128, .f32⟩) main_v368) maximumf,
    binary main_v368 main_arg32 main_v369 ((fun l r => Host.dotGeneral dot_S1024x128_S128x1_S1024x1_1_0_0_1_n_n none l r) : (⟨S1024x128, .f32⟩ : BufTy).Contents (Elt F) → (⟨S128x1, .f32⟩ : BufTy).Contents (Elt F) → (⟨S1024x1, .f32⟩ : BufTy).Contents (Elt F)),
    unary main_arg33 main_v370 (broadcastInDim S1x1 ![1] bcast_S1_S1x1_1 : (⟨S1, .f32⟩ : BufTy).Contents (Elt F) → (⟨S1x1, .f32⟩ : BufTy).Contents (Elt F)),
    unary main_v370 main_v371 (broadcastInDim S1024x1 ![0, 1] bcast_S1x1_S1024x1_0_1 : (⟨S1x1, .f32⟩ : BufTy).Contents (Elt F) → (⟨S1024x1, .f32⟩ : BufTy).Contents (Elt F)),
    binary main_v369 main_v371 main_v372 (addf : (⟨S1024x1, .f32⟩ : BufTy).Contents (Elt F) → (⟨S1024x1, .f32⟩ : BufTy).Contents (Elt F) → (⟨S1024x1, .f32⟩ : BufTy).Contents (Elt F)),
    unary main_v372 main_v373 (Host.negf : (⟨S1024x1, .f32⟩ : BufTy).Contents (Elt F) → (⟨S1024x1, .f32⟩ : BufTy).Contents (Elt F)),
    unary main_v373 main_v374 (Host.exp : (⟨S1024x1, .f32⟩ : BufTy).Contents (Elt F) → (⟨S1024x1, .f32⟩ : BufTy).Contents (Elt F)),
    nullary main_cst_4 (constant S_ .f32 0x3F800000#32),
    unary main_cst_4 main_v375 (broadcastInDim S1024x1 ![] bcast_S_S1024x1 : (⟨S_, .f32⟩ : BufTy).Contents (Elt F) → (⟨S1024x1, .f32⟩ : BufTy).Contents (Elt F)),
    binary main_v375 main_v374 main_v376 (addf : (⟨S1024x1, .f32⟩ : BufTy).Contents (Elt F) → (⟨S1024x1, .f32⟩ : BufTy).Contents (Elt F) → (⟨S1024x1, .f32⟩ : BufTy).Contents (Elt F)),
    nullary main_cst_5 (constant S_ .f32 0x3F800000#32),
    unary main_cst_5 main_v377 (broadcastInDim S1024x1 ![] bcast_S_S1024x1 : (⟨S_, .f32⟩ : BufTy).Contents (Elt F) → (⟨S1024x1, .f32⟩ : BufTy).Contents (Elt F)),
    binary main_v377 main_v376 main_v378 (Host.divf : (⟨S1024x1, .f32⟩ : BufTy).Contents (Elt F) → (⟨S1024x1, .f32⟩ : BufTy).Contents (Elt F) → (⟨S1024x1, .f32⟩ : BufTy).Contents (Elt F)) ]

abbrev ops : List (HloOp τ sig (Elt F)) :=
  ops0 ++ (ops1 ++ (ops2 ++ (ops3 ++ (ops4 ++ (ops5 ++ (ops6 ++ ops7))))))

end Cert.ReferenceIdeal.StagedRun

end
-- ==== Proof.RefRunSegs.lean ====
import proofs.«410031_j84061099917532_3_alg».proof.Proof.RefOps
import Idealize.ShloMosaic.Lib.Pipeline.Frame

noncomputable section

namespace Cert.ReferenceIdeal.StagedRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., unary_bufs_sub .., unary_bufs_sub .., binary_bufs_sub .., binary_bufs_sub ..,
   unary_bufs_sub .., unary_bufs_sub .., binary_bufs_sub .., binary_bufs_sub .., unary_bufs_sub .., unary_bufs_sub ..,
   binary_bufs_sub .., unary_bufs_sub .., unary_bufs_sub .., binary_bufs_sub .., binary_bufs_sub ..,
   unary_bufs_sub .., unary_bufs_sub .., binary_bufs_sub .., nullary_bufs_sub .., binary_bufs_sub ..,
   binary_bufs_sub .., unary_bufs_sub .., unary_bufs_sub .., binary_bufs_sub .., nullary_bufs_sub ..,
   binary_bufs_sub .., unary_bufs_sub .., unary_bufs_sub ..⟩

theorem ops1_sub : (ops1 : List (HloOp τ sig (Elt F))).Forall fun op => op.bufs ⊆ tcRefs τ sig :=
  ⟨nullary_bufs_sub .., unary_bufs_sub .., unary_bufs_sub .., unary_bufs_sub .., unary_bufs_sub .., unary_bufs_sub ..,
   unary_bufs_sub .., nary_bufs_sub .., binary_bufs_sub .., unary_bufs_sub .., unary_bufs_sub .., binary_bufs_sub ..,
   nullary_bufs_sub .., unary_bufs_sub .., binary_bufs_sub .., binary_bufs_sub .., unary_bufs_sub ..,
   unary_bufs_sub .., binary_bufs_sub .., nullary_bufs_sub .., unary_bufs_sub .., binary_bufs_sub ..,
   binary_bufs_sub .., unary_bufs_sub .., unary_bufs_sub .., binary_bufs_sub .., nullary_bufs_sub ..,
   unary_bufs_sub .., binary_bufs_sub ..⟩

theorem ops2_sub : (ops2 : List (HloOp τ sig (Elt F))).Forall fun op => op.bufs ⊆ tcRefs τ sig :=
  ⟨reshape_bufs_sub .., reshape_bufs_sub .., reshape_bufs_sub .., unary_bufs_sub .., reshape_bufs_sub ..,
   unary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., unary_bufs_sub .., unary_bufs_sub ..,
   unary_bufs_sub .., unary_bufs_sub .., nary_bufs_sub .., binary_bufs_sub .., unary_bufs_sub .., unary_bufs_sub ..,
   binary_bufs_sub .., nullary_bufs_sub .., unary_bufs_sub .., binary_bufs_sub .., binary_bufs_sub ..,
   unary_bufs_sub .., unary_bufs_sub .., binary_bufs_sub .., nullary_bufs_sub .., unary_bufs_sub ..,
   binary_bufs_sub .., binary_bufs_sub .., unary_bufs_sub .., unary_bufs_sub .., binary_bufs_sub ..,
   nullary_bufs_sub .., unary_bufs_sub .., binary_bufs_sub ..⟩

theorem ops3_sub : (ops3 : List (HloOp τ sig (Elt F))).Forall fun op => op.bufs ⊆ tcRefs τ sig :=
  ⟨reshape_bufs_sub .., reshape_bufs_sub .., reshape_bufs_sub .., unary_bufs_sub .., reshape_bufs_sub ..,
   unary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., unary_bufs_sub .., unary_bufs_sub ..,
   unary_bufs_sub .., unary_bufs_sub .., nary_bufs_sub .., binary_bufs_sub .., unary_bufs_sub .., unary_bufs_sub ..,
   binary_bufs_sub .., nullary_bufs_sub .., unary_bufs_sub .., binary_bufs_sub .., binary_bufs_sub ..,
   unary_bufs_sub .., unary_bufs_sub .., binary_bufs_sub .., nullary_bufs_sub .., unary_bufs_sub ..,
   binary_bufs_sub .., binary_bufs_sub .., unary_bufs_sub .., unary_bufs_sub .., binary_bufs_sub ..,
   nullary_bufs_sub .., unary_bufs_sub .., binary_bufs_sub ..⟩

theorem ops4_sub : (ops4 : List (HloOp τ sig (Elt F))).Forall fun op => op.bufs ⊆ tcRefs τ sig :=
  ⟨reshape_bufs_sub .., reshape_bufs_sub .., reshape_bufs_sub .., unary_bufs_sub .., reshape_bufs_sub ..,
   unary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., unary_bufs_sub .., unary_bufs_sub ..,
   unary_bufs_sub .., unary_bufs_sub .., nary_bufs_sub .., binary_bufs_sub .., unary_bufs_sub .., unary_bufs_sub ..,
   binary_bufs_sub .., nullary_bufs_sub .., unary_bufs_sub .., binary_bufs_sub .., binary_bufs_sub ..,
   unary_bufs_sub .., unary_bufs_sub .., binary_bufs_sub .., nullary_bufs_sub .., unary_bufs_sub ..,
   binary_bufs_sub .., binary_bufs_sub .., unary_bufs_sub .., unary_bufs_sub .., binary_bufs_sub ..,
   nullary_bufs_sub .., unary_bufs_sub .., binary_bufs_sub ..⟩

theorem ops5_sub : (ops5 : List (HloOp τ sig (Elt F))).Forall fun op => op.bufs ⊆ tcRefs τ sig :=
  ⟨reshape_bufs_sub .., reshape_bufs_sub .., reshape_bufs_sub .., unary_bufs_sub .., reshape_bufs_sub ..,
   unary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., unary_bufs_sub .., unary_bufs_sub ..,
   unary_bufs_sub .., unary_bufs_sub .., nary_bufs_sub .., binary_bufs_sub .., unary_bufs_sub .., unary_bufs_sub ..,
   binary_bufs_sub .., nullary_bufs_sub .., unary_bufs_sub .., binary_bufs_sub .., binary_bufs_sub ..,
   unary_bufs_sub .., unary_bufs_sub .., binary_bufs_sub .., nullary_bufs_sub .., unary_bufs_sub ..,
   binary_bufs_sub .., binary_bufs_sub .., unary_bufs_sub .., unary_bufs_sub .., binary_bufs_sub ..,
   nullary_bufs_sub .., unary_bufs_sub .., binary_bufs_sub ..⟩

theorem ops6_sub : (ops6 : List (HloOp τ sig (Elt F))).Forall fun op => op.bufs ⊆ tcRefs τ sig :=
  ⟨reshape_bufs_sub .., reshape_bufs_sub .., reshape_bufs_sub .., unary_bufs_sub .., reshape_bufs_sub ..,
   unary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., reshape_bufs_sub .., unary_bufs_sub ..,
   binary_bufs_sub .., reshape_bufs_sub .., unary_bufs_sub .., unary_bufs_sub .., unary_bufs_sub ..,
   unary_bufs_sub .., unary_bufs_sub .., nary_bufs_sub .., binary_bufs_sub .., unary_bufs_sub .., unary_bufs_sub ..,
   binary_bufs_sub .., nullary_bufs_sub .., unary_bufs_sub .., binary_bufs_sub .., binary_bufs_sub ..,
   unary_bufs_sub .., unary_bufs_sub .., binary_bufs_sub .., nullary_bufs_sub .., unary_bufs_sub ..,
   binary_bufs_sub .., binary_bufs_sub .., unary_bufs_sub .., unary_bufs_sub .., binary_bufs_sub ..,
   nullary_bufs_sub .., unary_bufs_sub .., binary_bufs_sub ..⟩

theorem ops7_sub : (ops7 : List (HloOp τ sig (Elt F))).Forall fun op => op.bufs ⊆ tcRefs τ sig :=
  ⟨binary_bufs_sub .., unary_bufs_sub .., unary_bufs_sub .., binary_bufs_sub .., nullary_bufs_sub ..,
   unary_bufs_sub .., binary_bufs_sub .., binary_bufs_sub .., unary_bufs_sub .., unary_bufs_sub ..,
   binary_bufs_sub .., nullary_bufs_sub .., unary_bufs_sub .., binary_bufs_sub .., binary_bufs_sub ..,
   unary_bufs_sub .., unary_bufs_sub .., binary_bufs_sub .., unary_bufs_sub .., unary_bufs_sub ..,
   nullary_bufs_sub .., unary_bufs_sub .., binary_bufs_sub .., nullary_bufs_sub .., unary_bufs_sub ..,
   binary_bufs_sub .., binary_bufs_sub .., unary_bufs_sub .., unary_bufs_sub .., binary_bufs_sub ..,
   nullary_bufs_sub .., unary_bufs_sub .., binary_bufs_sub .., binary_bufs_sub .., unary_bufs_sub ..,
   unary_bufs_sub .., binary_bufs_sub .., nullary_bufs_sub .., unary_bufs_sub .., binary_bufs_sub ..,
   binary_bufs_sub .., unary_bufs_sub .., unary_bufs_sub .., binary_bufs_sub .., unary_bufs_sub .., unary_bufs_sub ..,
   nullary_bufs_sub .., unary_bufs_sub .., binary_bufs_sub .., nullary_bufs_sub .., unary_bufs_sub ..,
   binary_bufs_sub ..⟩

theorem ops_sub : (ops : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, List.forall_append.mpr ⟨ops4_sub, List.forall_append.mpr ⟨ops5_sub,
      List.forall_append.mpr ⟨ops6_sub, ops7_sub⟩⟩⟩⟩⟩⟩⟩

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

theorem ops2_fresh : ∀ op ∈ (ops2 : List (HloOp τ sig (Elt F))), op.fresh = ∅ := by
  intro _ h; (repeat (cases h with | head => rfl | tail _ h => ?_)); exact nomatch h

theorem ops3_fresh : ∀ op ∈ (ops3 : List (HloOp τ sig (Elt F))), op.fresh = ∅ := by
  intro _ h; (repeat (cases h with | head => rfl | tail _ h => ?_)); exact nomatch h

theorem ops4_fresh : ∀ op ∈ (ops4 : List (HloOp τ sig (Elt F))), op.fresh = ∅ := by
  intro _ h; (repeat (cases h with | head => rfl | tail _ h => ?_)); exact nomatch h

theorem ops5_fresh : ∀ op ∈ (ops5 : List (HloOp τ sig (Elt F))), op.fresh = ∅ := by
  intro _ h; (repeat (cases h with | head => rfl | tail _ h => ?_)); exact nomatch h

theorem ops6_fresh : ∀ op ∈ (ops6 : List (HloOp τ sig (Elt F))), op.fresh = ∅ := by
  intro _ h; (repeat (cases h with | head => rfl | tail _ h => ?_)); exact nomatch h

theorem ops7_fresh : ∀ op ∈ (ops7 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h; · exact ops0_fresh op h
  rcases List.mem_append.mp h with h | h; · exact ops1_fresh op h
  rcases List.mem_append.mp h with h | h; · exact ops2_fresh op h
  rcases List.mem_append.mp h with h | h; · exact ops3_fresh op h
  rcases List.mem_append.mp h with h | h; · exact ops4_fresh op h
  rcases List.mem_append.mp h with h | h; · exact ops5_fresh op h
  rcases List.mem_append.mp h with h | h; · exact ops6_fresh op h
  exact ops7_fresh op h

theorem launch_at (m : (ℓ : Loc nD τ sig) → Buf (Elt F) ℓ) (d : Dev nD) (b : Ref sig .tc) :
    launchContents m d (Proc.devRef .tc b) = m ((d.tc : Thread nD τ).loc b) := rfl

theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ (fun _ => ops_fresh)

theorem after_ops (V : Valuation τ sig (Elt F)) :
    after ops V = after ops7 (after ops6 (after ops5 (after ops4 (after ops3 (after ops2 (after ops1 (after ops0 V))))))) := by
  rw [show (ops : List (HloOp τ sig (Elt F))) = ops0 ++ (ops1 ++ (ops2 ++ (ops3 ++ (ops4 ++ (ops5 ++ (ops6 ++ ops7)))))) from rfl,
    StableHlo.after_append, StableHlo.after_append, StableHlo.after_append, StableHlo.after_append, StableHlo.after_append,
    StableHlo.after_append, StableHlo.after_append]

end Cert.ReferenceIdeal.StagedRun

end
-- ==== Proof.RefKept.lean ====
import proofs.«410031_j84061099917532_3_alg».proof.Proof.RefOps

noncomputable section

namespace Cert.ReferenceIdeal.StagedRun

open Cert.ReferenceIdeal Cert.ReferenceIdeal.Gen Idealize.ShloMosaic Idealize.ShloMosaic.TcCoe Idealize.SL.Sem Idealize.ShloMosaic.StableHlo

variable {F : FTy → Type} [FloatOps F]

theorem single_writes_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

noncomputable def written0 : List (Ref sig .tc) :=
  [ main_v0, main_v1, main_v2, main_v3, main_v4, main_v5, main_v6, main_v7, main_v8, main_v9, main_v10, main_v11,
    main_v12, main_v13, main_v14, main_v15, main_v16, main_v17, main_v18, main_cst, main_v19, main_v20, main_v21,
    main_v22, main_v23, main_cst_0, main_v24, main_v25, main_v26 ]

theorem writes0 : (ops0 : List (HloOp τ sig (Elt F))).Forall fun op =>
    op.writes ⊆ (written0.map (Proc.devRef (τ := τ) .tc)).toFinset :=
  ⟨single_writes_sub (y := main_v0) (by decide), single_writes_sub (y := main_v1) (by decide),
   single_writes_sub (y := main_v2) (by decide), single_writes_sub (y := main_v3) (by decide),
   single_writes_sub (y := main_v4) (by decide), single_writes_sub (y := main_v5) (by decide),
   single_writes_sub (y := main_v6) (by decide), single_writes_sub (y := main_v7) (by decide),
   single_writes_sub (y := main_v8) (by decide), single_writes_sub (y := main_v9) (by decide),
   single_writes_sub (y := main_v10) (by decide), single_writes_sub (y := main_v11) (by decide),
   single_writes_sub (y := main_v12) (by decide), single_writes_sub (y := main_v13) (by decide),
   single_writes_sub (y := main_v14) (by decide), single_writes_sub (y := main_v15) (by decide),
   single_writes_sub (y := main_v16) (by decide), single_writes_sub (y := main_v17) (by decide),
   single_writes_sub (y := main_v18) (by decide), single_writes_sub (y := main_cst) (by decide),
   single_writes_sub (y := main_v19) (by decide), single_writes_sub (y := main_v20) (by decide),
   single_writes_sub (y := main_v21) (by decide), single_writes_sub (y := main_v22) (by decide),
   single_writes_sub (y := main_v23) (by decide), single_writes_sub (y := main_cst_0) (by decide),
   single_writes_sub (y := main_v24) (by decide), single_writes_sub (y := main_v25) (by decide),
   single_writes_sub (y := main_v26) (by decide)⟩

theorem kept0 (V : Valuation τ sig (Elt F)) (b : Ref sig .tc) (hb : b ∉ written0) :
    after ops0 V (Proc.devRef .tc b) = V (Proc.devRef .tc b) :=
  after_of_writes_sub ops0 V writes0 hb

noncomputable def written1 : List (Ref sig .tc) :=
  [ main_cst_1, main_v27, main_v28, main_v29, main_v30, main_v31, main_v32, main_v33, main_v34, main_v35, main_v36,
    main_v37, main_call0_cst, main_call0_v0, main_v38, main_v39, main_v40, main_v41, main_v42, main_call1_cst,
    main_call1_v0, main_v43, main_v44, main_v45, main_v46, main_v47, main_call2_cst, main_call2_v0, main_v48 ]

theorem writes1 : (ops1 : List (HloOp τ sig (Elt F))).Forall fun op =>
    op.writes ⊆ (written1.map (Proc.devRef (τ := τ) .tc)).toFinset :=
  ⟨single_writes_sub (y := main_cst_1) (by decide), single_writes_sub (y := main_v27) (by decide),
   single_writes_sub (y := main_v28) (by decide), single_writes_sub (y := main_v29) (by decide),
   single_writes_sub (y := main_v30) (by decide), single_writes_sub (y := main_v31) (by decide),
   single_writes_sub (y := main_v32) (by decide), single_writes_sub (y := main_v33) (by decide),
   single_writes_sub (y := main_v34) (by decide), single_writes_sub (y := main_v35) (by decide),
   single_writes_sub (y := main_v36) (by decide), single_writes_sub (y := main_v37) (by decide),
   single_writes_sub (y := main_call0_cst) (by decide), single_writes_sub (y := main_call0_v0) (by decide),
   single_writes_sub (y := main_v38) (by decide), single_writes_sub (y := main_v39) (by decide),
   single_writes_sub (y := main_v40) (by decide), single_writes_sub (y := main_v41) (by decide),
   single_writes_sub (y := main_v42) (by decide), single_writes_sub (y := main_call1_cst) (by decide),
   single_writes_sub (y := main_call1_v0) (by decide), single_writes_sub (y := main_v43) (by decide),
   single_writes_sub (y := main_v44) (by decide), single_writes_sub (y := main_v45) (by decide),
   single_writes_sub (y := main_v46) (by decide), single_writes_sub (y := main_v47) (by decide),
   single_writes_sub (y := main_call2_cst) (by decide), single_writes_sub (y := main_call2_v0) (by decide),
   single_writes_sub (y := main_v48) (by decide)⟩

theorem kept1 (V : Valuation τ sig (Elt F)) (b : Ref sig .tc) (hb : b ∉ written1) :
    after ops1 V (Proc.devRef .tc b) = V (Proc.devRef .tc b) :=
  after_of_writes_sub ops1 V writes1 hb

noncomputable def written2 : List (Ref sig .tc) :=
  [ main_v49, main_v50, main_v51, main_v52, main_v53, main_v54, main_v55, main_v56, main_v57, main_v58, main_v59,
    main_v60, main_v61, main_v62, main_v63, main_v64, main_v65, main_v66, main_v67, main_v68, main_v69, main_v70,
    main_v71, main_v72, main_v73, main_v74, main_v75, main_v76, main_v77, main_v78, main_v79, main_v80, main_v81,
    main_v82, main_v83, main_v84, main_v85, main_v86, main_v87, main_v88, main_v89, main_v90, main_v91, main_v92,
    main_v93, main_v94, main_v95, main_call3_cst, main_call3_v0, main_v96, main_v97, main_v98, main_v99, main_v100,
    main_call4_cst, main_call4_v0, main_v101, main_v102, main_v103, main_v104, main_v105, main_call5_cst,
    main_call5_v0, main_v106 ]

theorem writes2 : (ops2 : List (HloOp τ sig (Elt F))).Forall fun op =>
    op.writes ⊆ (written2.map (Proc.devRef (τ := τ) .tc)).toFinset :=
  ⟨single_writes_sub (y := main_v49) (by decide), single_writes_sub (y := main_v50) (by decide),
   single_writes_sub (y := main_v51) (by decide), single_writes_sub (y := main_v52) (by decide),
   single_writes_sub (y := main_v53) (by decide), single_writes_sub (y := main_v54) (by decide),
   single_writes_sub (y := main_v55) (by decide), single_writes_sub (y := main_v56) (by decide),
   single_writes_sub (y := main_v57) (by decide), single_writes_sub (y := main_v58) (by decide),
   single_writes_sub (y := main_v59) (by decide), single_writes_sub (y := main_v60) (by decide),
   single_writes_sub (y := main_v61) (by decide), single_writes_sub (y := main_v62) (by decide),
   single_writes_sub (y := main_v63) (by decide), single_writes_sub (y := main_v64) (by decide),
   single_writes_sub (y := main_v65) (by decide), single_writes_sub (y := main_v66) (by decide),
   single_writes_sub (y := main_v67) (by decide), single_writes_sub (y := main_v68) (by decide),
   single_writes_sub (y := main_v69) (by decide), single_writes_sub (y := main_v70) (by decide),
   single_writes_sub (y := main_v71) (by decide), single_writes_sub (y := main_v72) (by decide),
   single_writes_sub (y := main_v73) (by decide), single_writes_sub (y := main_v74) (by decide),
   single_writes_sub (y := main_v75) (by decide), single_writes_sub (y := main_v76) (by decide),
   single_writes_sub (y := main_v77) (by decide), single_writes_sub (y := main_v78) (by decide),
   single_writes_sub (y := main_v79) (by decide), single_writes_sub (y := main_v80) (by decide),
   single_writes_sub (y := main_v81) (by decide), single_writes_sub (y := main_v82) (by decide),
   single_writes_sub (y := main_v83) (by decide), single_writes_sub (y := main_v84) (by decide),
   single_writes_sub (y := main_v85) (by decide), single_writes_sub (y := main_v86) (by decide),
   single_writes_sub (y := main_v87) (by decide), single_writes_sub (y := main_v88) (by decide),
   single_writes_sub (y := main_v89) (by decide), single_writes_sub (y := main_v90) (by decide),
   single_writes_sub (y := main_v91) (by decide), single_writes_sub (y := main_v92) (by decide),
   single_writes_sub (y := main_v93) (by decide), single_writes_sub (y := main_v94) (by decide),
   single_writes_sub (y := main_v95) (by decide), single_writes_sub (y := main_call3_cst) (by decide),
   single_writes_sub (y := main_call3_v0) (by decide), single_writes_sub (y := main_v96) (by decide),
   single_writes_sub (y := main_v97) (by decide), single_writes_sub (y := main_v98) (by decide),
   single_writes_sub (y := main_v99) (by decide), single_writes_sub (y := main_v100) (by decide),
   single_writes_sub (y := main_call4_cst) (by decide), single_writes_sub (y := main_call4_v0) (by decide),
   single_writes_sub (y := main_v101) (by decide), single_writes_sub (y := main_v102) (by decide),
   single_writes_sub (y := main_v103) (by decide), single_writes_sub (y := main_v104) (by decide),
   single_writes_sub (y := main_v105) (by decide), single_writes_sub (y := main_call5_cst) (by decide),
   single_writes_sub (y := main_call5_v0) (by decide), single_writes_sub (y := main_v106) (by decide)⟩

theorem kept2 (V : Valuation τ sig (Elt F)) (b : Ref sig .tc) (hb : b ∉ written2) :
    after ops2 V (Proc.devRef .tc b) = V (Proc.devRef .tc b) :=
  after_of_writes_sub ops2 V writes2 hb

noncomputable def written3 : List (Ref sig .tc) :=
  [ main_v107, main_v108, main_v109, main_v110, main_v111, main_v112, main_v113, main_v114, main_v115, main_v116,
    main_v117, main_v118, main_v119, main_v120, main_v121, main_v122, main_v123, main_v124, main_v125, main_v126,
    main_v127, main_v128, main_v129, main_v130, main_v131, main_v132, main_v133, main_v134, main_v135, main_v136,
    main_v137, main_v138, main_v139, main_v140, main_v141, main_v142, main_v143, main_v144, main_v145, main_v146,
    main_v147, main_v148, main_v149, main_v150, main_v151, main_v152, main_v153, main_call6_cst, main_call6_v0,
    main_v154, main_v155, main_v156, main_v157, main_v158, main_call7_cst, main_call7_v0, main_v159, main_v160,
    main_v161, main_v162, main_v163, main_call8_cst, main_call8_v0, main_v164 ]

theorem writes3 : (ops3 : List (HloOp τ sig (Elt F))).Forall fun op =>
    op.writes ⊆ (written3.map (Proc.devRef (τ := τ) .tc)).toFinset :=
  ⟨single_writes_sub (y := main_v107) (by decide), single_writes_sub (y := main_v108) (by decide),
   single_writes_sub (y := main_v109) (by decide), single_writes_sub (y := main_v110) (by decide),
   single_writes_sub (y := main_v111) (by decide), single_writes_sub (y := main_v112) (by decide),
   single_writes_sub (y := main_v113) (by decide), single_writes_sub (y := main_v114) (by decide),
   single_writes_sub (y := main_v115) (by decide), single_writes_sub (y := main_v116) (by decide),
   single_writes_sub (y := main_v117) (by decide), single_writes_sub (y := main_v118) (by decide),
   single_writes_sub (y := main_v119) (by decide), single_writes_sub (y := main_v120) (by decide),
   single_writes_sub (y := main_v121) (by decide), single_writes_sub (y := main_v122) (by decide),
   single_writes_sub (y := main_v123) (by decide), single_writes_sub (y := main_v124) (by decide),
   single_writes_sub (y := main_v125) (by decide), single_writes_sub (y := main_v126) (by decide),
   single_writes_sub (y := main_v127) (by decide), single_writes_sub (y := main_v128) (by decide),
   single_writes_sub (y := main_v129) (by decide), single_writes_sub (y := main_v130) (by decide),
   single_writes_sub (y := main_v131) (by decide), single_writes_sub (y := main_v132) (by decide),
   single_writes_sub (y := main_v133) (by decide), single_writes_sub (y := main_v134) (by decide),
   single_writes_sub (y := main_v135) (by decide), single_writes_sub (y := main_v136) (by decide),
   single_writes_sub (y := main_v137) (by decide), single_writes_sub (y := main_v138) (by decide),
   single_writes_sub (y := main_v139) (by decide), single_writes_sub (y := main_v140) (by decide),
   single_writes_sub (y := main_v141) (by decide), single_writes_sub (y := main_v142) (by decide),
   single_writes_sub (y := main_v143) (by decide), single_writes_sub (y := main_v144) (by decide),
   single_writes_sub (y := main_v145) (by decide), single_writes_sub (y := main_v146) (by decide),
   single_writes_sub (y := main_v147) (by decide), single_writes_sub (y := main_v148) (by decide),
   single_writes_sub (y := main_v149) (by decide), single_writes_sub (y := main_v150) (by decide),
   single_writes_sub (y := main_v151) (by decide), single_writes_sub (y := main_v152) (by decide),
   single_writes_sub (y := main_v153) (by decide), single_writes_sub (y := main_call6_cst) (by decide),
   single_writes_sub (y := main_call6_v0) (by decide), single_writes_sub (y := main_v154) (by decide),
   single_writes_sub (y := main_v155) (by decide), single_writes_sub (y := main_v156) (by decide),
   single_writes_sub (y := main_v157) (by decide), single_writes_sub (y := main_v158) (by decide),
   single_writes_sub (y := main_call7_cst) (by decide), single_writes_sub (y := main_call7_v0) (by decide),
   single_writes_sub (y := main_v159) (by decide), single_writes_sub (y := main_v160) (by decide),
   single_writes_sub (y := main_v161) (by decide), single_writes_sub (y := main_v162) (by decide),
   single_writes_sub (y := main_v163) (by decide), single_writes_sub (y := main_call8_cst) (by decide),
   single_writes_sub (y := main_call8_v0) (by decide), single_writes_sub (y := main_v164) (by decide)⟩

theorem kept3 (V : Valuation τ sig (Elt F)) (b : Ref sig .tc) (hb : b ∉ written3) :
    after ops3 V (Proc.devRef .tc b) = V (Proc.devRef .tc b) :=
  after_of_writes_sub ops3 V writes3 hb

noncomputable def written4 : List (Ref sig .tc) :=
  [ main_v165, main_v166, main_v167, main_v168, main_v169, main_v170, main_v171, main_v172, main_v173, main_v174,
    main_v175, main_v176, main_v177, main_v178, main_v179, main_v180, main_v181, main_v182, main_v183, main_v184,
    main_v185, main_v186, main_v187, main_v188, main_v189, main_v190, main_v191, main_v192, main_v193, main_v194,
    main_v195, main_v196, main_v197, main_v198, main_v199, main_v200, main_v201, main_v202, main_v203, main_v204,
    main_v205, main_v206, main_v207, main_v208, main_v209, main_v210, main_v211, main_call9_cst, main_call9_v0,
    main_v212, main_v213, main_v214, main_v215, main_v216, main_call10_cst, main_call10_v0, main_v217, main_v218,
    main_v219, main_v220, main_v221, main_call11_cst, main_call11_v0, main_v222 ]

theorem writes4 : (ops4 : List (HloOp τ sig (Elt F))).Forall fun op =>
    op.writes ⊆ (written4.map (Proc.devRef (τ := τ) .tc)).toFinset :=
  ⟨single_writes_sub (y := main_v165) (by decide), single_writes_sub (y := main_v166) (by decide),
   single_writes_sub (y := main_v167) (by decide), single_writes_sub (y := main_v168) (by decide),
   single_writes_sub (y := main_v169) (by decide), single_writes_sub (y := main_v170) (by decide),
   single_writes_sub (y := main_v171) (by decide), single_writes_sub (y := main_v172) (by decide),
   single_writes_sub (y := main_v173) (by decide), single_writes_sub (y := main_v174) (by decide),
   single_writes_sub (y := main_v175) (by decide), single_writes_sub (y := main_v176) (by decide),
   single_writes_sub (y := main_v177) (by decide), single_writes_sub (y := main_v178) (by decide),
   single_writes_sub (y := main_v179) (by decide), single_writes_sub (y := main_v180) (by decide),
   single_writes_sub (y := main_v181) (by decide), single_writes_sub (y := main_v182) (by decide),
   single_writes_sub (y := main_v183) (by decide), single_writes_sub (y := main_v184) (by decide),
   single_writes_sub (y := main_v185) (by decide), single_writes_sub (y := main_v186) (by decide),
   single_writes_sub (y := main_v187) (by decide), single_writes_sub (y := main_v188) (by decide),
   single_writes_sub (y := main_v189) (by decide), single_writes_sub (y := main_v190) (by decide),
   single_writes_sub (y := main_v191) (by decide), single_writes_sub (y := main_v192) (by decide),
   single_writes_sub (y := main_v193) (by decide), single_writes_sub (y := main_v194) (by decide),
   single_writes_sub (y := main_v195) (by decide), single_writes_sub (y := main_v196) (by decide),
   single_writes_sub (y := main_v197) (by decide), single_writes_sub (y := main_v198) (by decide),
   single_writes_sub (y := main_v199) (by decide), single_writes_sub (y := main_v200) (by decide),
   single_writes_sub (y := main_v201) (by decide), single_writes_sub (y := main_v202) (by decide),
   single_writes_sub (y := main_v203) (by decide), single_writes_sub (y := main_v204) (by decide),
   single_writes_sub (y := main_v205) (by decide), single_writes_sub (y := main_v206) (by decide),
   single_writes_sub (y := main_v207) (by decide), single_writes_sub (y := main_v208) (by decide),
   single_writes_sub (y := main_v209) (by decide), single_writes_sub (y := main_v210) (by decide),
   single_writes_sub (y := main_v211) (by decide), single_writes_sub (y := main_call9_cst) (by decide),
   single_writes_sub (y := main_call9_v0) (by decide), single_writes_sub (y := main_v212) (by decide),
   single_writes_sub (y := main_v213) (by decide), single_writes_sub (y := main_v214) (by decide),
   single_writes_sub (y := main_v215) (by decide), single_writes_sub (y := main_v216) (by decide),
   single_writes_sub (y := main_call10_cst) (by decide), single_writes_sub (y := main_call10_v0) (by decide),
   single_writes_sub (y := main_v217) (by decide), single_writes_sub (y := main_v218) (by decide),
   single_writes_sub (y := main_v219) (by decide), single_writes_sub (y := main_v220) (by decide),
   single_writes_sub (y := main_v221) (by decide), single_writes_sub (y := main_call11_cst) (by decide),
   single_writes_sub (y := main_call11_v0) (by decide), single_writes_sub (y := main_v222) (by decide)⟩

theorem kept4 (V : Valuation τ sig (Elt F)) (b : Ref sig .tc) (hb : b ∉ written4) :
    after ops4 V (Proc.devRef .tc b) = V (Proc.devRef .tc b) :=
  after_of_writes_sub ops4 V writes4 hb

noncomputable def written5 : List (Ref sig .tc) :=
  [ main_v223, main_v224, main_v225, main_v226, main_v227, main_v228, main_v229, main_v230, main_v231, main_v232,
    main_v233, main_v234, main_v235, main_v236, main_v237, main_v238, main_v239, main_v240, main_v241, main_v242,
    main_v243, main_v244, main_v245, main_v246, main_v247, main_v248, main_v249, main_v250, main_v251, main_v252,
    main_v253, main_v254, main_v255, main_v256, main_v257, main_v258, main_v259, main_v260, main_v261, main_v262,
    main_v263, main_v264, main_v265, main_v266, main_v267, main_v268, main_v269, main_call12_cst, main_call12_v0,
    main_v270, main_v271, main_v272, main_v273, main_v274, main_call13_cst, main_call13_v0, main_v275, main_v276,
    main_v277, main_v278, main_v279, main_call14_cst, main_call14_v0, main_v280 ]

theorem writes5 : (ops5 : List (HloOp τ sig (Elt F))).Forall fun op =>
    op.writes ⊆ (written5.map (Proc.devRef (τ := τ) .tc)).toFinset :=
  ⟨single_writes_sub (y := main_v223) (by decide), single_writes_sub (y := main_v224) (by decide),
   single_writes_sub (y := main_v225) (by decide), single_writes_sub (y := main_v226) (by decide),
   single_writes_sub (y := main_v227) (by decide), single_writes_sub (y := main_v228) (by decide),
   single_writes_sub (y := main_v229) (by decide), single_writes_sub (y := main_v230) (by decide),
   single_writes_sub (y := main_v231) (by decide), single_writes_sub (y := main_v232) (by decide),
   single_writes_sub (y := main_v233) (by decide), single_writes_sub (y := main_v234) (by decide),
   single_writes_sub (y := main_v235) (by decide), single_writes_sub (y := main_v236) (by decide),
   single_writes_sub (y := main_v237) (by decide), single_writes_sub (y := main_v238) (by decide),
   single_writes_sub (y := main_v239) (by decide), single_writes_sub (y := main_v240) (by decide),
   single_writes_sub (y := main_v241) (by decide), single_writes_sub (y := main_v242) (by decide),
   single_writes_sub (y := main_v243) (by decide), single_writes_sub (y := main_v244) (by decide),
   single_writes_sub (y := main_v245) (by decide), single_writes_sub (y := main_v246) (by decide),
   single_writes_sub (y := main_v247) (by decide), single_writes_sub (y := main_v248) (by decide),
   single_writes_sub (y := main_v249) (by decide), single_writes_sub (y := main_v250) (by decide),
   single_writes_sub (y := main_v251) (by decide), single_writes_sub (y := main_v252) (by decide),
   single_writes_sub (y := main_v253) (by decide), single_writes_sub (y := main_v254) (by decide),
   single_writes_sub (y := main_v255) (by decide), single_writes_sub (y := main_v256) (by decide),
   single_writes_sub (y := main_v257) (by decide), single_writes_sub (y := main_v258) (by decide),
   single_writes_sub (y := main_v259) (by decide), single_writes_sub (y := main_v260) (by decide),
   single_writes_sub (y := main_v261) (by decide), single_writes_sub (y := main_v262) (by decide),
   single_writes_sub (y := main_v263) (by decide), single_writes_sub (y := main_v264) (by decide),
   single_writes_sub (y := main_v265) (by decide), single_writes_sub (y := main_v266) (by decide),
   single_writes_sub (y := main_v267) (by decide), single_writes_sub (y := main_v268) (by decide),
   single_writes_sub (y := main_v269) (by decide), single_writes_sub (y := main_call12_cst) (by decide),
   single_writes_sub (y := main_call12_v0) (by decide), single_writes_sub (y := main_v270) (by decide),
   single_writes_sub (y := main_v271) (by decide), single_writes_sub (y := main_v272) (by decide),
   single_writes_sub (y := main_v273) (by decide), single_writes_sub (y := main_v274) (by decide),
   single_writes_sub (y := main_call13_cst) (by decide), single_writes_sub (y := main_call13_v0) (by decide),
   single_writes_sub (y := main_v275) (by decide), single_writes_sub (y := main_v276) (by decide),
   single_writes_sub (y := main_v277) (by decide), single_writes_sub (y := main_v278) (by decide),
   single_writes_sub (y := main_v279) (by decide), single_writes_sub (y := main_call14_cst) (by decide),
   single_writes_sub (y := main_call14_v0) (by decide), single_writes_sub (y := main_v280) (by decide)⟩

theorem kept5 (V : Valuation τ sig (Elt F)) (b : Ref sig .tc) (hb : b ∉ written5) :
    after ops5 V (Proc.devRef .tc b) = V (Proc.devRef .tc b) :=
  after_of_writes_sub ops5 V writes5 hb

noncomputable def written6 : List (Ref sig .tc) :=
  [ main_v281, main_v282, main_v283, main_v284, main_v285, main_v286, main_v287, main_v288, main_v289, main_v290,
    main_v291, main_v292, main_v293, main_v294, main_v295, main_v296, main_v297, main_v298, main_v299, main_v300,
    main_v301, main_v302, main_v303, main_v304, main_v305, main_v306, main_v307, main_v308, main_v309, main_v310,
    main_v311, main_v312, main_v313, main_v314, main_v315, main_v316, main_v317, main_v318, main_v319, main_v320,
    main_v321, main_v322, main_v323, main_v324, main_v325, main_v326, main_v327, main_call15_cst, main_call15_v0,
    main_v328, main_v329, main_v330, main_v331, main_v332, main_call16_cst, main_call16_v0, main_v333, main_v334,
    main_v335, main_v336, main_v337, main_call17_cst, main_call17_v0, main_v338 ]

theorem writes6 : (ops6 : List (HloOp τ sig (Elt F))).Forall fun op =>
    op.writes ⊆ (written6.map (Proc.devRef (τ := τ) .tc)).toFinset :=
  ⟨single_writes_sub (y := main_v281) (by decide), single_writes_sub (y := main_v282) (by decide),
   single_writes_sub (y := main_v283) (by decide), single_writes_sub (y := main_v284) (by decide),
   single_writes_sub (y := main_v285) (by decide), single_writes_sub (y := main_v286) (by decide),
   single_writes_sub (y := main_v287) (by decide), single_writes_sub (y := main_v288) (by decide),
   single_writes_sub (y := main_v289) (by decide), single_writes_sub (y := main_v290) (by decide),
   single_writes_sub (y := main_v291) (by decide), single_writes_sub (y := main_v292) (by decide),
   single_writes_sub (y := main_v293) (by decide), single_writes_sub (y := main_v294) (by decide),
   single_writes_sub (y := main_v295) (by decide), single_writes_sub (y := main_v296) (by decide),
   single_writes_sub (y := main_v297) (by decide), single_writes_sub (y := main_v298) (by decide),
   single_writes_sub (y := main_v299) (by decide), single_writes_sub (y := main_v300) (by decide),
   single_writes_sub (y := main_v301) (by decide), single_writes_sub (y := main_v302) (by decide),
   single_writes_sub (y := main_v303) (by decide), single_writes_sub (y := main_v304) (by decide),
   single_writes_sub (y := main_v305) (by decide), single_writes_sub (y := main_v306) (by decide),
   single_writes_sub (y := main_v307) (by decide), single_writes_sub (y := main_v308) (by decide),
   single_writes_sub (y := main_v309) (by decide), single_writes_sub (y := main_v310) (by decide),
   single_writes_sub (y := main_v311) (by decide), single_writes_sub (y := main_v312) (by decide),
   single_writes_sub (y := main_v313) (by decide), single_writes_sub (y := main_v314) (by decide),
   single_writes_sub (y := main_v315) (by decide), single_writes_sub (y := main_v316) (by decide),
   single_writes_sub (y := main_v317) (by decide), single_writes_sub (y := main_v318) (by decide),
   single_writes_sub (y := main_v319) (by decide), single_writes_sub (y := main_v320) (by decide),
   single_writes_sub (y := main_v321) (by decide), single_writes_sub (y := main_v322) (by decide),
   single_writes_sub (y := main_v323) (by decide), single_writes_sub (y := main_v324) (by decide),
   single_writes_sub (y := main_v325) (by decide), single_writes_sub (y := main_v326) (by decide),
   single_writes_sub (y := main_v327) (by decide), single_writes_sub (y := main_call15_cst) (by decide),
   single_writes_sub (y := main_call15_v0) (by decide), single_writes_sub (y := main_v328) (by decide),
   single_writes_sub (y := main_v329) (by decide), single_writes_sub (y := main_v330) (by decide),
   single_writes_sub (y := main_v331) (by decide), single_writes_sub (y := main_v332) (by decide),
   single_writes_sub (y := main_call16_cst) (by decide), single_writes_sub (y := main_call16_v0) (by decide),
   single_writes_sub (y := main_v333) (by decide), single_writes_sub (y := main_v334) (by decide),
   single_writes_sub (y := main_v335) (by decide), single_writes_sub (y := main_v336) (by decide),
   single_writes_sub (y := main_v337) (by decide), single_writes_sub (y := main_call17_cst) (by decide),
   single_writes_sub (y := main_call17_v0) (by decide), single_writes_sub (y := main_v338) (by decide)⟩

theorem kept6 (V : Valuation τ sig (Elt F)) (b : Ref sig .tc) (hb : b ∉ written6) :
    after ops6 V (Proc.devRef .tc b) = V (Proc.devRef .tc b) :=
  after_of_writes_sub ops6 V writes6 hb

noncomputable def written7 : List (Ref sig .tc) :=
  [ main_v339, main_v340, main_v341, main_v342, main_call18_cst, main_call18_v0, main_v343, main_v344, main_v345,
    main_v346, main_v347, main_call19_cst, main_call19_v0, main_v348, main_v349, main_v350, main_v351, main_v352,
    main_v353, main_v354, main_cst_2, main_v355, main_v356, main_cst_3, main_v357, main_v358, main_v359, main_v360,
    main_v361, main_v362, main_call20_cst, main_call20_v0, main_v363, main_v364, main_v365, main_v366, main_v367,
    main_call21_cst, main_call21_v0, main_v368, main_v369, main_v370, main_v371, main_v372, main_v373, main_v374,
    main_cst_4, main_v375, main_v376, main_cst_5, main_v377, main_v378 ]

theorem writes7 : (ops7 : List (HloOp τ sig (Elt F))).Forall fun op =>
    op.writes ⊆ (written7.map (Proc.devRef (τ := τ) .tc)).toFinset :=
  ⟨single_writes_sub (y := main_v339) (by decide), single_writes_sub (y := main_v340) (by decide),
   single_writes_sub (y := main_v341) (by decide), single_writes_sub (y := main_v342) (by decide),
   single_writes_sub (y := main_call18_cst) (by decide), single_writes_sub (y := main_call18_v0) (by decide),
   single_writes_sub (y := main_v343) (by decide), single_writes_sub (y := main_v344) (by decide),
   single_writes_sub (y := main_v345) (by decide), single_writes_sub (y := main_v346) (by decide),
   single_writes_sub (y := main_v347) (by decide), single_writes_sub (y := main_call19_cst) (by decide),
   single_writes_sub (y := main_call19_v0) (by decide), single_writes_sub (y := main_v348) (by decide),
   single_writes_sub (y := main_v349) (by decide), single_writes_sub (y := main_v350) (by decide),
   single_writes_sub (y := main_v351) (by decide), single_writes_sub (y := main_v352) (by decide),
   single_writes_sub (y := main_v353) (by decide), single_writes_sub (y := main_v354) (by decide),
   single_writes_sub (y := main_cst_2) (by decide), single_writes_sub (y := main_v355) (by decide),
   single_writes_sub (y := main_v356) (by decide), single_writes_sub (y := main_cst_3) (by decide),
   single_writes_sub (y := main_v357) (by decide), single_writes_sub (y := main_v358) (by decide),
   single_writes_sub (y := main_v359) (by decide), single_writes_sub (y := main_v360) (by decide),
   single_writes_sub (y := main_v361) (by decide), single_writes_sub (y := main_v362) (by decide),
   single_writes_sub (y := main_call20_cst) (by decide), single_writes_sub (y := main_call20_v0) (by decide),
   single_writes_sub (y := main_v363) (by decide), single_writes_sub (y := main_v364) (by decide),
   single_writes_sub (y := main_v365) (by decide), single_writes_sub (y := main_v366) (by decide),
   single_writes_sub (y := main_v367) (by decide), single_writes_sub (y := main_call21_cst) (by decide),
   single_writes_sub (y := main_call21_v0) (by decide), single_writes_sub (y := main_v368) (by decide),
   single_writes_sub (y := main_v369) (by decide), single_writes_sub (y := main_v370) (by decide),
   single_writes_sub (y := main_v371) (by decide), single_writes_sub (y := main_v372) (by decide),
   single_writes_sub (y := main_v373) (by decide), single_writes_sub (y := main_v374) (by decide),
   single_writes_sub (y := main_cst_4) (by decide), single_writes_sub (y := main_v375) (by decide),
   single_writes_sub (y := main_v376) (by decide), single_writes_sub (y := main_cst_5) (by decide),
   single_writes_sub (y := main_v377) (by decide), single_writes_sub (y := main_v378) (by decide)⟩

theorem kept7 (V : Valuation τ sig (Elt F)) (b : Ref sig .tc) (hb : b ∉ written7) :
    after ops7 V (Proc.devRef .tc b) = V (Proc.devRef .tc b) :=
  after_of_writes_sub ops7 V writes7 hb

example (V : Valuation τ sig (Elt F)) : after ops2 V (Proc.devRef .tc main_v3) = V (Proc.devRef .tc main_v3) :=
  kept2 V main_v3 (by decide)
example (V : Valuation τ sig (Elt F)) : after ops2 V (Proc.devRef .tc main_arg16) = V (Proc.devRef .tc main_arg16) :=
  kept2 V main_arg16 (by decide)
example (V : Valuation τ sig (Elt F)) : after ops7 V (Proc.devRef .tc main_arg0) = V (Proc.devRef .tc main_arg0) :=
  kept7 V main_arg0 (by decide)

end Cert.ReferenceIdeal.StagedRun

end
-- ==== Proof.RefStages.lean ====
import proofs.«410031_j84061099917532_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

variable (x0 : (⟨S64512x32, .f32⟩ : BufTy).Contents (Elt F))
  (x1 : (⟨S64512x32, .f32⟩ : BufTy).Contents (Elt F))
  (x2 : (⟨S64512x1000, .f32⟩ : BufTy).Contents (Elt F))
  (x3 : (⟨S64512x4x64, .f32⟩ : BufTy).Contents (Elt F))
  (x4 : (⟨S64512x4x64, .f32⟩ : BufTy).Contents (Elt F))
  (x5 : (⟨S64512, .f32⟩ : BufTy).Contents (Elt F))
  (x6 : (⟨S64512, .i32⟩ : BufTy).Contents (Elt F))
  (x7 : (⟨S64512, .i32⟩ : BufTy).Contents (Elt F))
  (x8 : (⟨S32x128, .f32⟩ : BufTy).Contents (Elt F))
  (x9 : (⟨S128, .f32⟩ : BufTy).Contents (Elt F))
  (x10 : (⟨S32x128, .f32⟩ : BufTy).Contents (Elt F))
  (x11 : (⟨S128, .f32⟩ : BufTy).Contents (Elt F))
  (x12 : (⟨S1000x128, .f32⟩ : BufTy).Contents (Elt F))
  (x13 : (⟨S128, .f32⟩ : BufTy).Contents (Elt F))
  (x14 : (⟨S64x128, .f32⟩ : BufTy).Contents (Elt F))
  (x15 : (⟨S128, .f32⟩ : BufTy).Contents (Elt F))
  (x16 : (⟨S1408x512, .f32⟩ : BufTy).Contents (Elt F))
  (x17 : (⟨S512, .f32⟩ : BufTy).Contents (Elt F))
  (x18 : (⟨S512x256, .f32⟩ : BufTy).Contents (Elt F))
  (x19 : (⟨S256, .f32⟩ : BufTy).Contents (Elt F))
  (x20 : (⟨S256x128, .f32⟩ : BufTy).Contents (Elt F))
  (x21 : (⟨S128, .f32⟩ : BufTy).Contents (Elt F))
  (x22 : (⟨S128x128, .f32⟩ : BufTy).Contents (Elt F))
  (x23 : (⟨S128, .f32⟩ : BufTy).Contents (Elt F))
  (x24 : (⟨S128x128, .f32⟩ : BufTy).Contents (Elt F))
  (x25 : (⟨S128, .f32⟩ : BufTy).Contents (Elt F))
  (x26 : (⟨S128x1, .f32⟩ : BufTy).Contents (Elt F))
  (x27 : (⟨S1, .f32⟩ : BufTy).Contents (Elt F))
  (x28 : (⟨S128x128, .f32⟩ : BufTy).Contents (Elt F))
  (x29 : (⟨S128, .f32⟩ : BufTy).Contents (Elt F))
  (x30 : (⟨S128x128, .f32⟩ : BufTy).Contents (Elt F))
  (x31 : (⟨S128, .f32⟩ : BufTy).Contents (Elt F))
  (x32 : (⟨S128x1, .f32⟩ : BufTy).Contents (Elt F))
  (x33 : (⟨S1, .f32⟩ : BufTy).Contents (Elt F))

def val_main_v0 : (⟨S64512x128, .f32⟩ : BufTy).Contents (Elt F) :=
  Host.dotGeneral dot_S64512x32_S32x128_S64512x128_1_0_0_1_n_n none (x0) (x8)
theorem lhs_main_v0_0 (i : S64512x128.Idx) (q : dot_S64512x32_S32x128_S64512x128_1_0_0_1_n_n.contr.Idx) :
    (dot_S64512x32_S32x128_S64512x128_1_0_0_1_n_n.lhsIdx i q 0).val = (i 0).val := by
  unfold DotDims.lhsIdx
  rw [dif_neg (show ¬(0 : Fin S64512x32.rank) ∈ dot_S64512x32_S32x128_S64512x128_1_0_0_1_n_n.lhsBatch by decide), dif_pos (show (0 : Fin S64512x32.rank) ∈ dot_S64512x32_S32x128_S64512x128_1_0_0_1_n_n.lhsNonContracting by decide)]
  rfl
theorem lhs_main_v0_1 (i : S64512x128.Idx) (q : dot_S64512x32_S32x128_S64512x128_1_0_0_1_n_n.contr.Idx) :
    (dot_S64512x32_S32x128_S64512x128_1_0_0_1_n_n.lhsIdx i q 1).val = (q ⟨0, by decide⟩).val :=
  dot_S64512x32_S32x128_S64512x128_1_0_0_1_n_n.lhsIdx_val_of_single rfl i q
theorem rhs_main_v0_0 (i : S64512x128.Idx) (q : dot_S64512x32_S32x128_S64512x128_1_0_0_1_n_n.contr.Idx) :
    (dot_S64512x32_S32x128_S64512x128_1_0_0_1_n_n.rhsIdx i q 0).val = (q ⟨0, by decide⟩).val :=
  dot_S64512x32_S32x128_S64512x128_1_0_0_1_n_n.rhsIdx_val_of_single rfl i q
theorem rhs_main_v0_1 (i : S64512x128.Idx) (q : dot_S64512x32_S32x128_S64512x128_1_0_0_1_n_n.contr.Idx) :
    (dot_S64512x32_S32x128_S64512x128_1_0_0_1_n_n.rhsIdx i q 1).val = (i 1).val := by
  unfold DotDims.rhsIdx
  rw [dif_neg (show ¬(1 : Fin S32x128.rank) ∈ dot_S64512x32_S32x128_S64512x128_1_0_0_1_n_n.rhsBatch by decide), dif_pos (show (1 : Fin S32x128.rank) ∈ dot_S64512x32_S32x128_S64512x128_1_0_0_1_n_n.rhsNonContracting by decide)]
  rfl
abbrev lidx_main_v0 (i : S64512x128.Idx) (k : Fin 32) : S64512x32.Idx := fun a => match a with
  | ⟨0, _⟩ => ⟨(i 0).val, (i 0).isLt⟩
  | ⟨1, _⟩ => ⟨k.val, k.isLt⟩
abbrev ridx_main_v0 (i : S64512x128.Idx) (k : Fin 32) : S32x128.Idx := fun a => match a with
  | ⟨0, _⟩ => ⟨k.val, k.isLt⟩
  | ⟨1, _⟩ => ⟨(i 1).val, (i 1).isLt⟩

theorem val_main_v0_apply (x0 : (⟨S64512x32, .f32⟩ : BufTy).Contents (Elt Ideal)) (x8 : (⟨S32x128, .f32⟩ : BufTy).Contents (Elt Ideal)) (i : S64512x128.Idx) :
    val_main_v0 (F := Ideal) x0 x8 i = ∑ k : Fin 32, x0 (lidx_main_v0 i k) * x8 (ridx_main_v0 i k) := by
  unfold val_main_v0
  simp only [Host.dotGeneral]
  rw [Ideal.dotGeneral_apply, ← Equiv.sum_comp (ValueIdx.contrEquiv1 dot_S64512x32_S32x128_S64512x128_1_0_0_1_n_n 32 rfl rfl).symm]
  refine Finset.sum_congr rfl fun k _ => ?_
  have hk := ValueIdx.contrEquiv1_symm_val dot_S64512x32_S32x128_S64512x128_1_0_0_1_n_n 32 rfl rfl k
  have el : dot_S64512x32_S32x128_S64512x128_1_0_0_1_n_n.lhsIdx i ((ValueIdx.contrEquiv1 dot_S64512x32_S32x128_S64512x128_1_0_0_1_n_n 32 rfl rfl).symm k) = lidx_main_v0 i k := funext fun a => Fin.ext (by
    match a with
    | ⟨0, _⟩ => exact lhs_main_v0_0 _ _
    | ⟨1, _⟩ => exact (lhs_main_v0_1 _ _).trans hk)
  have er : dot_S64512x32_S32x128_S64512x128_1_0_0_1_n_n.rhsIdx i ((ValueIdx.contrEquiv1 dot_S64512x32_S32x128_S64512x128_1_0_0_1_n_n 32 rfl rfl).symm k) = ridx_main_v0 i k := funext fun a => Fin.ext (by
    match a with
    | ⟨0, _⟩ => exact (rhs_main_v0_0 _ _).trans hk
    | ⟨1, _⟩ => exact rhs_main_v0_1 _ _)
  rw [el, er]

def val_main_v1 : (⟨S1x128, .f32⟩ : BufTy).Contents (Elt F) :=
  broadcastInDim S1x128 ![1] bcast_S128_S1x128_1 (x9)
abbrev idx_main_v1 (i : S1x128.Idx) : S128.Idx := fun a => match a with
  | ⟨0, _⟩ => ⟨(i 1).val, (i 1).isLt⟩
theorem val_main_v1_apply (i : S1x128.Idx) :
    val_main_v1 (F := F) x9 i = x9 (idx_main_v1 i) := by
  unfold val_main_v1
  exact broadcastInDim_apply _ bcast_S128_S1x128_1 x9 i (idx_main_v1 i) (fun a => match a with
    | ⟨0, _⟩ => by show (i 1).val = if (128 : Nat) = 1 then 0 else (i 1).val; rw [if_neg (by decide)])

def val_main_v2 : (⟨S64512x128, .f32⟩ : BufTy).Contents (Elt F) :=
  broadcastInDim S64512x128 ![0, 1] bcast_S1x128_S64512x128_0_1 (val_main_v1 (F := F) x9)
abbrev idx_main_v2 (i : S64512x128.Idx) : S1x128.Idx := fun a => match a with
  | ⟨0, _⟩ => ⟨0, Nat.one_pos⟩
  | ⟨1, _⟩ => ⟨(i 1).val, (i 1).isLt⟩
theorem val_main_v2_apply (i : S64512x128.Idx) :
    val_main_v2 (F := F) x9 i = val_main_v1 (F := F) x9 (idx_main_v2 i) := by
  unfold val_main_v2
  generalize val_main_v1 (F := F) x9 = y
  exact broadcastInDim_apply _ bcast_S1x128_S64512x128_0_1 y i (idx_main_v2 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v3 : (⟨S64512x128, .f32⟩ : BufTy).Contents (Elt F) :=
  addf (val_main_v0 (F := F) x0 x8) (val_main_v2 (F := F) x9)
theorem val_main_v3_apply (i : S64512x128.Idx) :
    val_main_v3 (F := F) x0 x8 x9 i = FloatOps.addf (val_main_v0 (F := F) x0 x8 i) (val_main_v2 (F := F) x9 i) := rfl

def val_main_v4 : (⟨S64512x128, .f32⟩ : BufTy).Contents (Elt F) :=
  Host.dotGeneral dot_S64512x32_S32x128_S64512x128_1_0_0_1_n_n none (x1) (x10)
theorem lhs_main_v4_0 (i : S64512x128.Idx) (q : dot_S64512x32_S32x128_S64512x128_1_0_0_1_n_n.contr.Idx) :
    (dot_S64512x32_S32x128_S64512x128_1_0_0_1_n_n.lhsIdx i q 0).val = (i 0).val := by
  unfold DotDims.lhsIdx
  rw [dif_neg (show ¬(0 : Fin S64512x32.rank) ∈ dot_S64512x32_S32x128_S64512x128_1_0_0_1_n_n.lhsBatch by decide), dif_pos (show (0 : Fin S64512x32.rank) ∈ dot_S64512x32_S32x128_S64512x128_1_0_0_1_n_n.lhsNonContracting by decide)]
  rfl
theorem lhs_main_v4_1 (i : S64512x128.Idx) (q : dot_S64512x32_S32x128_S64512x128_1_0_0_1_n_n.contr.Idx) :
    (dot_S64512x32_S32x128_S64512x128_1_0_0_1_n_n.lhsIdx i q 1).val = (q ⟨0, by decide⟩).val :=
  dot_S64512x32_S32x128_S64512x128_1_0_0_1_n_n.lhsIdx_val_of_single rfl i q
theorem rhs_main_v4_0 (i : S64512x128.Idx) (q : dot_S64512x32_S32x128_S64512x128_1_0_0_1_n_n.contr.Idx) :
    (dot_S64512x32_S32x128_S64512x128_1_0_0_1_n_n.rhsIdx i q 0).val = (q ⟨0, by decide⟩).val :=
  dot_S64512x32_S32x128_S64512x128_1_0_0_1_n_n.rhsIdx_val_of_single rfl i q
theorem rhs_main_v4_1 (i : S64512x128.Idx) (q : dot_S64512x32_S32x128_S64512x128_1_0_0_1_n_n.contr.Idx) :
    (dot_S64512x32_S32x128_S64512x128_1_0_0_1_n_n.rhsIdx i q 1).val = (i 1).val := by
  unfold DotDims.rhsIdx
  rw [dif_neg (show ¬(1 : Fin S32x128.rank) ∈ dot_S64512x32_S32x128_S64512x128_1_0_0_1_n_n.rhsBatch by decide), dif_pos (show (1 : Fin S32x128.rank) ∈ dot_S64512x32_S32x128_S64512x128_1_0_0_1_n_n.rhsNonContracting by decide)]
  rfl
abbrev lidx_main_v4 (i : S64512x128.Idx) (k : Fin 32) : S64512x32.Idx := fun a => match a with
  | ⟨0, _⟩ => ⟨(i 0).val, (i 0).isLt⟩
  | ⟨1, _⟩ => ⟨k.val, k.isLt⟩
abbrev ridx_main_v4 (i : S64512x128.Idx) (k : Fin 32) : S32x128.Idx := fun a => match a with
  | ⟨0, _⟩ => ⟨k.val, k.isLt⟩
  | ⟨1, _⟩ => ⟨(i 1).val, (i 1).isLt⟩

theorem val_main_v4_apply (x1 : (⟨S64512x32, .f32⟩ : BufTy).Contents (Elt Ideal)) (x10 : (⟨S32x128, .f32⟩ : BufTy).Contents (Elt Ideal)) (i : S64512x128.Idx) :
    val_main_v4 (F := Ideal) x1 x10 i = ∑ k : Fin 32, x1 (lidx_main_v4 i k) * x10 (ridx_main_v4 i k) := by
  unfold val_main_v4
  simp only [Host.dotGeneral]
  rw [Ideal.dotGeneral_apply, ← Equiv.sum_comp (ValueIdx.contrEquiv1 dot_S64512x32_S32x128_S64512x128_1_0_0_1_n_n 32 rfl rfl).symm]
  refine Finset.sum_congr rfl fun k _ => ?_
  have hk := ValueIdx.contrEquiv1_symm_val dot_S64512x32_S32x128_S64512x128_1_0_0_1_n_n 32 rfl rfl k
  have el : dot_S64512x32_S32x128_S64512x128_1_0_0_1_n_n.lhsIdx i ((ValueIdx.contrEquiv1 dot_S64512x32_S32x128_S64512x128_1_0_0_1_n_n 32 rfl rfl).symm k) = lidx_main_v4 i k := funext fun a => Fin.ext (by
    match a with
    | ⟨0, _⟩ => exact lhs_main_v4_0 _ _
    | ⟨1, _⟩ => exact (lhs_main_v4_1 _ _).trans hk)
  have er : dot_S64512x32_S32x128_S64512x128_1_0_0_1_n_n.rhsIdx i ((ValueIdx.contrEquiv1 dot_S64512x32_S32x128_S64512x128_1_0_0_1_n_n 32 rfl rfl).symm k) = ridx_main_v4 i k := funext fun a => Fin.ext (by
    match a with
    | ⟨0, _⟩ => exact (rhs_main_v4_0 _ _).trans hk
    | ⟨1, _⟩ => exact rhs_main_v4_1 _ _)
  rw [el, er]

def val_main_v5 : (⟨S1x128, .f32⟩ : BufTy).Contents (Elt F) :=
  broadcastInDim S1x128 ![1] bcast_S128_S1x128_1 (x11)
abbrev idx_main_v5 (i : S1x128.Idx) : S128.Idx := fun a => match a with
  | ⟨0, _⟩ => ⟨(i 1).val, (i 1).isLt⟩
theorem val_main_v5_apply (i : S1x128.Idx) :
    val_main_v5 (F := F) x11 i = x11 (idx_main_v5 i) := by
  unfold val_main_v5
  exact broadcastInDim_apply _ bcast_S128_S1x128_1 x11 i (idx_main_v5 i) (fun a => match a with
    | ⟨0, _⟩ => by show (i 1).val = if (128 : Nat) = 1 then 0 else (i 1).val; rw [if_neg (by decide)])

def val_main_v6 : (⟨S64512x128, .f32⟩ : BufTy).Contents (Elt F) :=
  broadcastInDim S64512x128 ![0, 1] bcast_S1x128_S64512x128_0_1 (val_main_v5 (F := F) x11)
abbrev idx_main_v6 (i : S64512x128.Idx) : S1x128.Idx := fun a => match a with
  | ⟨0, _⟩ => ⟨0, Nat.one_pos⟩
  | ⟨1, _⟩ => ⟨(i 1).val, (i 1).isLt⟩
theorem val_main_v6_apply (i : S64512x128.Idx) :
    val_main_v6 (F := F) x11 i = val_main_v5 (F := F) x11 (idx_main_v6 i) := by
  unfold val_main_v6
  generalize val_main_v5 (F := F) x11 = y
  exact broadcastInDim_apply _ bcast_S1x128_S64512x128_0_1 y i (idx_main_v6 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v7 : (⟨S64512x128, .f32⟩ : BufTy).Contents (Elt F) :=
  addf (val_main_v4 (F := F) x1 x10) (val_main_v6 (F := F) x11)
theorem val_main_v7_apply (i : S64512x128.Idx) :
    val_main_v7 (F := F) x1 x10 x11 i = FloatOps.addf (val_main_v4 (F := F) x1 x10 i) (val_main_v6 (F := F) x11 i) := rfl

def val_main_v8 : (⟨S64512x128, .f32⟩ : BufTy).Contents (Elt F) :=
  Host.dotGeneral dot_S64512x1000_S1000x128_S64512x128_1_0_0_1_n_n none (x2) (x12)
theorem lhs_main_v8_0 (i : S64512x128.Idx) (q : dot_S64512x1000_S1000x128_S64512x128_1_0_0_1_n_n.contr.Idx) :
    (dot_S64512x1000_S1000x128_S64512x128_1_0_0_1_n_n.lhsIdx i q 0).val = (i 0).val := by
  unfold DotDims.lhsIdx
  rw [dif_neg (show ¬(0 : Fin S64512x1000.rank) ∈ dot_S64512x1000_S1000x128_S64512x128_1_0_0_1_n_n.lhsBatch by decide), dif_pos (show (0 : Fin S64512x1000.rank) ∈ dot_S64512x1000_S1000x128_S64512x128_1_0_0_1_n_n.lhsNonContracting by decide)]
  rfl
theorem lhs_main_v8_1 (i : S64512x128.Idx) (q : dot_S64512x1000_S1000x128_S64512x128_1_0_0_1_n_n.contr.Idx) :
    (dot_S64512x1000_S1000x128_S64512x128_1_0_0_1_n_n.lhsIdx i q 1).val = (q ⟨0, by decide⟩).val :=
  dot_S64512x1000_S1000x128_S64512x128_1_0_0_1_n_n.lhsIdx_val_of_single rfl i q
theorem rhs_main_v8_0 (i : S64512x128.Idx) (q : dot_S64512x1000_S1000x128_S64512x128_1_0_0_1_n_n.contr.Idx) :
    (dot_S64512x1000_S1000x128_S64512x128_1_0_0_1_n_n.rhsIdx i q 0).val = (q ⟨0, by decide⟩).val :=
  dot_S64512x1000_S1000x128_S64512x128_1_0_0_1_n_n.rhsIdx_val_of_single rfl i q
theorem rhs_main_v8_1 (i : S64512x128.Idx) (q : dot_S64512x1000_S1000x128_S64512x128_1_0_0_1_n_n.contr.Idx) :
    (dot_S64512x1000_S1000x128_S64512x128_1_0_0_1_n_n.rhsIdx i q 1).val = (i 1).val := by
  unfold DotDims.rhsIdx
  rw [dif_neg (show ¬(1 : Fin S1000x128.rank) ∈ dot_S64512x1000_S1000x128_S64512x128_1_0_0_1_n_n.rhsBatch by decide), dif_pos (show (1 : Fin S1000x128.rank) ∈ dot_S64512x1000_S1000x128_S64512x128_1_0_0_1_n_n.rhsNonContracting by decide)]
  rfl
abbrev lidx_main_v8 (i : S64512x128.Idx) (k : Fin 1000) : S64512x1000.Idx := fun a => match a with
  | ⟨0, _⟩ => ⟨(i 0).val, (i 0).isLt⟩
  | ⟨1, _⟩ => ⟨k.val, k.isLt⟩
abbrev ridx_main_v8 (i : S64512x128.Idx) (k : Fin 1000) : S1000x128.Idx := fun a => match a with
  | ⟨0, _⟩ => ⟨k.val, k.isLt⟩
  | ⟨1, _⟩ => ⟨(i 1).val, (i 1).isLt⟩

theorem val_main_v8_apply (x2 : (⟨S64512x1000, .f32⟩ : BufTy).Contents (Elt Ideal)) (x12 : (⟨S1000x128, .f32⟩ : BufTy).Contents (Elt Ideal)) (i : S64512x128.Idx) :
    val_main_v8 (F := Ideal) x2 x12 i = ∑ k : Fin 1000, x2 (lidx_main_v8 i k) * x12 (ridx_main_v8 i k) := by
  unfold val_main_v8
  simp only [Host.dotGeneral]
  rw [Ideal.dotGeneral_apply, ← Equiv.sum_comp (ValueIdx.contrEquiv1 dot_S64512x1000_S1000x128_S64512x128_1_0_0_1_n_n 1000 rfl rfl).symm]
  refine Finset.sum_congr rfl fun k _ => ?_
  have hk := ValueIdx.contrEquiv1_symm_val dot_S64512x1000_S1000x128_S64512x128_1_0_0_1_n_n 1000 rfl rfl k
  have el : dot_S64512x1000_S1000x128_S64512x128_1_0_0_1_n_n.lhsIdx i ((ValueIdx.contrEquiv1 dot_S64512x1000_S1000x128_S64512x128_1_0_0_1_n_n 1000 rfl rfl).symm k) = lidx_main_v8 i k := funext fun a => Fin.ext (by
    match a with
    | ⟨0, _⟩ => exact lhs_main_v8_0 _ _
    | ⟨1, _⟩ => exact (lhs_main_v8_1 _ _).trans hk)
  have er : dot_S64512x1000_S1000x128_S64512x128_1_0_0_1_n_n.rhsIdx i ((ValueIdx.contrEquiv1 dot_S64512x1000_S1000x128_S64512x128_1_0_0_1_n_n 1000 rfl rfl).symm k) = ridx_main_v8 i k := funext fun a => Fin.ext (by
    match a with
    | ⟨0, _⟩ => exact (rhs_main_v8_0 _ _).trans hk
    | ⟨1, _⟩ => exact rhs_main_v8_1 _ _)
  rw [el, er]

def val_main_v9 : (⟨S1x128, .f32⟩ : BufTy).Contents (Elt F) :=
  broadcastInDim S1x128 ![1] bcast_S128_S1x128_1 (x13)
abbrev idx_main_v9 (i : S1x128.Idx) : S128.Idx := fun a => match a with
  | ⟨0, _⟩ => ⟨(i 1).val, (i 1).isLt⟩
theorem val_main_v9_apply (i : S1x128.Idx) :
    val_main_v9 (F := F) x13 i = x13 (idx_main_v9 i) := by
  unfold val_main_v9
  exact broadcastInDim_apply _ bcast_S128_S1x128_1 x13 i (idx_main_v9 i) (fun a => match a with
    | ⟨0, _⟩ => by show (i 1).val = if (128 : Nat) = 1 then 0 else (i 1).val; rw [if_neg (by decide)])

def val_main_v10 : (⟨S64512x128, .f32⟩ : BufTy).Contents (Elt F) :=
  broadcastInDim S64512x128 ![0, 1] bcast_S1x128_S64512x128_0_1 (val_main_v9 (F := F) x13)
abbrev idx_main_v10 (i : S64512x128.Idx) : S1x128.Idx := fun a => match a with
  | ⟨0, _⟩ => ⟨0, Nat.one_pos⟩
  | ⟨1, _⟩ => ⟨(i 1).val, (i 1).isLt⟩
theorem val_main_v10_apply (i : S64512x128.Idx) :
    val_main_v10 (F := F) x13 i = val_main_v9 (F := F) x13 (idx_main_v10 i) := by
  unfold val_main_v10
  generalize val_main_v9 (F := F) x13 = y
  exact broadcastInDim_apply _ bcast_S1x128_S64512x128_0_1 y i (idx_main_v10 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v11 : (⟨S64512x128, .f32⟩ : BufTy).Contents (Elt F) :=
  addf (val_main_v8 (F := F) x2 x12) (val_main_v10 (F := F) x13)
theorem val_main_v11_apply (i : S64512x128.Idx) :
    val_main_v11 (F := F) x2 x12 x13 i = FloatOps.addf (val_main_v8 (F := F) x2 x12 i) (val_main_v10 (F := F) x13 i) := rfl

def val_main_v12 : (⟨S64512x1, .f32⟩ : BufTy).Contents (Elt F) :=
  broadcastInDim S64512x1 ![0] bcast_S64512_S64512x1_0 (x5)
abbrev idx_main_v12 (i : S64512x1.Idx) : S64512.Idx := fun a => match a with
  | ⟨0, _⟩ => ⟨(i 0).val, (i 0).isLt⟩
theorem val_main_v12_apply (i : S64512x1.Idx) :
    val_main_v12 (F := F) x5 i = x5 (idx_main_v12 i) := by
  unfold val_main_v12
  exact broadcastInDim_apply _ bcast_S64512_S64512x1_0 x5 i (idx_main_v12 i) (fun a => match a with
    | ⟨0, _⟩ => by show (i 0).val = if (64512 : Nat) = 1 then 0 else (i 0).val; rw [if_neg (by decide)])

def val_main_v13 : (⟨S64512x128, .f32⟩ : BufTy).Contents (Elt F) :=
  broadcastInDim S64512x128 ![0, 1] bcast_S64512x1_S64512x128_0_1 (val_main_v12 (F := F) x5)
abbrev idx_main_v13 (i : S64512x128.Idx) : S64512x1.Idx := fun a => match a with
  | ⟨0, _⟩ => ⟨(i 0).val, (i 0).isLt⟩
  | ⟨1, _⟩ => ⟨0, Nat.one_pos⟩
theorem val_main_v13_apply (i : S64512x128.Idx) :
    val_main_v13 (F := F) x5 i = val_main_v12 (F := F) x5 (idx_main_v13 i) := by
  unfold val_main_v13
  generalize val_main_v12 (F := F) x5 = y
  exact broadcastInDim_apply _ bcast_S64512x1_S64512x128_0_1 y i (idx_main_v13 i) (fun a => match a with
    | ⟨0, _⟩ => by show (i 0).val = if (64512 : Nat) = 1 then 0 else (i 0).val; rw [if_neg (by decide)]
    | ⟨1, _⟩ => by show 0 = if (1 : Nat) = 1 then 0 else (i 1).val; rw [if_pos rfl])

def val_main_v14 : (⟨S64512x128, .f32⟩ : BufTy).Contents (Elt F) :=
  mulf (val_main_v11 (F := F) x2 x12 x13) (val_main_v13 (F := F) x5)
theorem val_main_v14_apply (i : S64512x128.Idx) :
    val_main_v14 (F := F) x2 x5 x12 x13 i = FloatOps.mulf (val_main_v11 (F := F) x2 x12 x13 i) (val_main_v13 (F := F) x5 i) := rfl

def val_main_v15 : (⟨S64512x4x128, .f32⟩ : BufTy).Contents (Elt F) :=
  Host.dotGeneral dot_S64512x4x64_S64x128_S64512x4x128_2_0_01_1_n_n none (x3) (x14)
theorem lhs_main_v15_0 (i : S64512x4x128.Idx) (q : dot_S64512x4x64_S64x128_S64512x4x128_2_0_01_1_n_n.contr.Idx) :
    (dot_S64512x4x64_S64x128_S64512x4x128_2_0_01_1_n_n.lhsIdx i q 0).val = (i 0).val := by
  unfold DotDims.lhsIdx
  rw [dif_neg (show ¬(0 : Fin S64512x4x64.rank) ∈ dot_S64512x4x64_S64x128_S64512x4x128_2_0_01_1_n_n.lhsBatch by decide), dif_pos (show (0 : Fin S64512x4x64.rank) ∈ dot_S64512x4x64_S64x128_S64512x4x128_2_0_01_1_n_n.lhsNonContracting by decide)]
  rfl
theorem lhs_main_v15_1 (i : S64512x4x128.Idx) (q : dot_S64512x4x64_S64x128_S64512x4x128_2_0_01_1_n_n.contr.Idx) :
    (dot_S64512x4x64_S64x128_S64512x4x128_2_0_01_1_n_n.lhsIdx i q 1).val = (i 1).val := by
  unfold DotDims.lhsIdx
  rw [dif_neg (show ¬(1 : Fin S64512x4x64.rank) ∈ dot_S64512x4x64_S64x128_S64512x4x128_2_0_01_1_n_n.lhsBatch by decide), dif_pos (show (1 : Fin S64512x4x64.rank) ∈ dot_S64512x4x64_S64x128_S64512x4x128_2_0_01_1_n_n.lhsNonContracting by decide)]
  rfl
theorem lhs_main_v15_2 (i : S64512x4x128.Idx) (q : dot_S64512x4x64_S64x128_S64512x4x128_2_0_01_1_n_n.contr.Idx) :
    (dot_S64512x4x64_S64x128_S64512x4x128_2_0_01_1_n_n.lhsIdx i q 2).val = (q ⟨0, by decide⟩).val :=
  dot_S64512x4x64_S64x128_S64512x4x128_2_0_01_1_n_n.lhsIdx_val_of_single rfl i q
theorem rhs_main_v15_0 (i : S64512x4x128.Idx) (q : dot_S64512x4x64_S64x128_S64512x4x128_2_0_01_1_n_n.contr.Idx) :
    (dot_S64512x4x64_S64x128_S64512x4x128_2_0_01_1_n_n.rhsIdx i q 0).val = (q ⟨0, by decide⟩).val :=
  dot_S64512x4x64_S64x128_S64512x4x128_2_0_01_1_n_n.rhsIdx_val_of_single rfl i q
theorem rhs_main_v15_1 (i : S64512x4x128.Idx) (q : dot_S64512x4x64_S64x128_S64512x4x128_2_0_01_1_n_n.contr.Idx) :
    (dot_S64512x4x64_S64x128_S64512x4x128_2_0_01_1_n_n.rhsIdx i q 1).val = (i 2).val := by
  unfold DotDims.rhsIdx
  rw [dif_neg (show ¬(1 : Fin S64x128.rank) ∈ dot_S64512x4x64_S64x128_S64512x4x128_2_0_01_1_n_n.rhsBatch by decide), dif_pos (show (1 : Fin S64x128.rank) ∈ dot_S64512x4x64_S64x128_S64512x4x128_2_0_01_1_n_n.rhsNonContracting by decide)]
  rfl
abbrev lidx_main_v15 (i : S64512x4x128.Idx) (k : Fin 64) : S64512x4x64.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v15 (i : S64512x4x128.Idx) (k : Fin 64) : S64x128.Idx := fun a => match a with
  | ⟨0, _⟩ => ⟨k.val, k.isLt⟩
  | ⟨1, _⟩ => ⟨(i 2).val, (i 2).isLt⟩

theorem val_main_v15_apply (x3 : (⟨S64512x4x64, .f32⟩ : BufTy).Contents (Elt Ideal)) (x14 : (⟨S64x128, .f32⟩ : BufTy).Contents (Elt Ideal)) (i : S64512x4x128.Idx) :
    val_main_v15 (F := Ideal) x3 x14 i = ∑ k : Fin 64, x3 (lidx_main_v15 i k) * x14 (ridx_main_v15 i k) := by
  unfold val_main_v15
  simp only [Host.dotGeneral]
  rw [Ideal.dotGeneral_apply, ← Equiv.sum_comp (ValueIdx.contrEquiv1 dot_S64512x4x64_S64x128_S64512x4x128_2_0_01_1_n_n 64 rfl rfl).symm]
  refine Finset.sum_congr rfl fun k _ => ?_
  have hk := ValueIdx.contrEquiv1_symm_val dot_S64512x4x64_S64x128_S64512x4x128_2_0_01_1_n_n 64 rfl rfl k
  have el : dot_S64512x4x64_S64x128_S64512x4x128_2_0_01_1_n_n.lhsIdx i ((ValueIdx.contrEquiv1 dot_S64512x4x64_S64x128_S64512x4x128_2_0_01_1_n_n 64 rfl rfl).symm k) = lidx_main_v15 i k := funext fun a => Fin.ext (by
    match a with
    | ⟨0, _⟩ => exact lhs_main_v15_0 _ _
    | ⟨1, _⟩ => exact lhs_main_v15_1 _ _
    | ⟨2, _⟩ => exact (lhs_main_v15_2 _ _).trans hk)
  have er : dot_S64512x4x64_S64x128_S64512x4x128_2_0_01_1_n_n.rhsIdx i ((ValueIdx.contrEquiv1 dot_S64512x4x64_S64x128_S64512x4x128_2_0_01_1_n_n 64 rfl rfl).symm k) = ridx_main_v15 i k := funext fun a => Fin.ext (by
    match a with
    | ⟨0, _⟩ => exact (rhs_main_v15_0 _ _).trans hk
    | ⟨1, _⟩ => exact rhs_main_v15_1 _ _)
  rw [el, er]

def val_main_v16 : (⟨S1x1x128, .f32⟩ : BufTy).Contents (Elt F) :=
  broadcastInDim S1x1x128 ![2] bcast_S128_S1x1x128_2 (x15)
abbrev idx_main_v16 (i : S1x1x128.Idx) : S128.Idx := fun a => match a with
  | ⟨0, _⟩ => ⟨(i 2).val, (i 2).isLt⟩
theorem val_main_v16_apply (i : S1x1x128.Idx) :
    val_main_v16 (F := F) x15 i = x15 (idx_main_v16 i) := by
  unfold val_main_v16
  exact broadcastInDim_apply _ bcast_S128_S1x1x128_2 x15 i (idx_main_v16 i) (fun a => match a with
    | ⟨0, _⟩ => by show (i 2).val = if (128 : Nat) = 1 then 0 else (i 2).val; rw [if_neg (by decide)])

def val_main_v17 : (⟨S64512x4x128, .f32⟩ : BufTy).Contents (Elt F) :=
  broadcastInDim S64512x4x128 ![0, 1, 2] bcast_S1x1x128_S64512x4x128_0_1_2 (val_main_v16 (F := F) x15)
abbrev idx_main_v17 (i : S64512x4x128.Idx) : S1x1x128.Idx := fun a => match a with
  | ⟨0, _⟩ => ⟨0, Nat.one_pos⟩
  | ⟨1, _⟩ => ⟨0, Nat.one_pos⟩
  | ⟨2, _⟩ => ⟨(i 2).val, (i 2).isLt⟩
theorem val_main_v17_apply (i : S64512x4x128.Idx) :
    val_main_v17 (F := F) x15 i = val_main_v16 (F := F) x15 (idx_main_v17 i) := by
  unfold val_main_v17
  generalize val_main_v16 (F := F) x15 = y
  exact broadcastInDim_apply _ bcast_S1x1x128_S64512x4x128_0_1_2 y i (idx_main_v17 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v18 : (⟨S64512x4x128, .f32⟩ : BufTy).Contents (Elt F) :=
  addf (val_main_v15 (F := F) x3 x14) (val_main_v17 (F := F) x15)
theorem val_main_v18_apply (i : S64512x4x128.Idx) :
    val_main_v18 (F := F) x3 x14 x15 i = FloatOps.addf (val_main_v15 (F := F) x3 x14 i) (val_main_v17 (F := F) x15 i) := rfl

def val_main_cst : (⟨S_, .f32⟩ : BufTy).Contents (Elt F) :=
  constant S_ .f32 0x7F800000#32
theorem val_main_cst_apply (i : S_.Idx) :
    val_main_cst (F := F) i = FloatOps.ofBits .f32 0x7F800000#32 := rfl

def val_main_v19 : (⟨S64512x128, .f32⟩ : BufTy).Contents (Elt F) :=
  Host.reduce FloatOps.minimumf (val_main_v18 (F := F) x3 x14 x15) (val_main_cst (F := F)) reducesTo_S64512x4x128_S64512x128_d1 h_S_

def val_main_v20 : (⟨S64512x4x128, .f32⟩ : BufTy).Contents (Elt F) :=
  Host.dotGeneral dot_S64512x4x64_S64x128_S64512x4x128_2_0_01_1_n_n none (x4) (x14)
theorem lhs_main_v20_0 (i : S64512x4x128.Idx) (q : dot_S64512x4x64_S64x128_S64512x4x128_2_0_01_1_n_n.contr.Idx) :
    (dot_S64512x4x64_S64x128_S64512x4x128_2_0_01_1_n_n.lhsIdx i q 0).val = (i 0).val := by
  unfold DotDims.lhsIdx
  rw [dif_neg (show ¬(0 : Fin S64512x4x64.rank) ∈ dot_S64512x4x64_S64x128_S64512x4x128_2_0_01_1_n_n.lhsBatch by decide), dif_pos (show (0 : Fin S64512x4x64.rank) ∈ dot_S64512x4x64_S64x128_S64512x4x128_2_0_01_1_n_n.lhsNonContracting by decide)]
  rfl
theorem lhs_main_v20_1 (i : S64512x4x128.Idx) (q : dot_S64512x4x64_S64x128_S64512x4x128_2_0_01_1_n_n.contr.Idx) :
    (dot_S64512x4x64_S64x128_S64512x4x128_2_0_01_1_n_n.lhsIdx i q 1).val = (i 1).val := by
  unfold DotDims.lhsIdx
  rw [dif_neg (show ¬(1 : Fin S64512x4x64.rank) ∈ dot_S64512x4x64_S64x128_S64512x4x128_2_0_01_1_n_n.lhsBatch by decide), dif_pos (show (1 : Fin S64512x4x64.rank) ∈ dot_S64512x4x64_S64x128_S64512x4x128_2_0_01_1_n_n.lhsNonContracting by decide)]
  rfl
theorem lhs_main_v20_2 (i : S64512x4x128.Idx) (q : dot_S64512x4x64_S64x128_S64512x4x128_2_0_01_1_n_n.contr.Idx) :
    (dot_S64512x4x64_S64x128_S64512x4x128_2_0_01_1_n_n.lhsIdx i q 2).val = (q ⟨0, by decide⟩).val :=
  dot_S64512x4x64_S64x128_S64512x4x128_2_0_01_1_n_n.lhsIdx_val_of_single rfl i q
theorem rhs_main_v20_0 (i : S64512x4x128.Idx) (q : dot_S64512x4x64_S64x128_S64512x4x128_2_0_01_1_n_n.contr.Idx) :
    (dot_S64512x4x64_S64x128_S64512x4x128_2_0_01_1_n_n.rhsIdx i q 0).val = (q ⟨0, by decide⟩).val :=
  dot_S64512x4x64_S64x128_S64512x4x128_2_0_01_1_n_n.rhsIdx_val_of_single rfl i q
theorem rhs_main_v20_1 (i : S64512x4x128.Idx) (q : dot_S64512x4x64_S64x128_S64512x4x128_2_0_01_1_n_n.contr.Idx) :
    (dot_S64512x4x64_S64x128_S64512x4x128_2_0_01_1_n_n.rhsIdx i q 1).val = (i 2).val := by
  unfold DotDims.rhsIdx
  rw [dif_neg (show ¬(1 : Fin S64x128.rank) ∈ dot_S64512x4x64_S64x128_S64512x4x128_2_0_01_1_n_n.rhsBatch by decide), dif_pos (show (1 : Fin S64x128.rank) ∈ dot_S64512x4x64_S64x128_S64512x4x128_2_0_01_1_n_n.rhsNonContracting by decide)]
  rfl
abbrev lidx_main_v20 (i : S64512x4x128.Idx) (k : Fin 64) : S64512x4x64.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v20 (i : S64512x4x128.Idx) (k : Fin 64) : S64x128.Idx := fun a => match a with
  | ⟨0, _⟩ => ⟨k.val, k.isLt⟩
  | ⟨1, _⟩ => ⟨(i 2).val, (i 2).isLt⟩

theorem val_main_v20_apply (x4 : (⟨S64512x4x64, .f32⟩ : BufTy).Contents (Elt Ideal)) (x14 : (⟨S64x128, .f32⟩ : BufTy).Contents (Elt Ideal)) (i : S64512x4x128.Idx) :
    val_main_v20 (F := Ideal) x4 x14 i = ∑ k : Fin 64, x4 (lidx_main_v20 i k) * x14 (ridx_main_v20 i k) := by
  unfold val_main_v20
  simp only [Host.dotGeneral]
  rw [Ideal.dotGeneral_apply, ← Equiv.sum_comp (ValueIdx.contrEquiv1 dot_S64512x4x64_S64x128_S64512x4x128_2_0_01_1_n_n 64 rfl rfl).symm]
  refine Finset.sum_congr rfl fun k _ => ?_
  have hk := ValueIdx.contrEquiv1_symm_val dot_S64512x4x64_S64x128_S64512x4x128_2_0_01_1_n_n 64 rfl rfl k
  have el : dot_S64512x4x64_S64x128_S64512x4x128_2_0_01_1_n_n.lhsIdx i ((ValueIdx.contrEquiv1 dot_S64512x4x64_S64x128_S64512x4x128_2_0_01_1_n_n 64 rfl rfl).symm k) = lidx_main_v20 i k := funext fun a => Fin.ext (by
    match a with
    | ⟨0, _⟩ => exact lhs_main_v20_0 _ _
    | ⟨1, _⟩ => exact lhs_main_v20_1 _ _
    | ⟨2, _⟩ => exact (lhs_main_v20_2 _ _).trans hk)
  have er : dot_S64512x4x64_S64x128_S64512x4x128_2_0_01_1_n_n.rhsIdx i ((ValueIdx.contrEquiv1 dot_S64512x4x64_S64x128_S64512x4x128_2_0_01_1_n_n 64 rfl rfl).symm k) = ridx_main_v20 i k := funext fun a => Fin.ext (by
    match a with
    | ⟨0, _⟩ => exact (rhs_main_v20_0 _ _).trans hk
    | ⟨1, _⟩ => exact rhs_main_v20_1 _ _)
  rw [el, er]

def val_main_v21 : (⟨S1x1x128, .f32⟩ : BufTy).Contents (Elt F) :=
  broadcastInDim S1x1x128 ![2] bcast_S128_S1x1x128_2 (x15)
abbrev idx_main_v21 (i : S1x1x128.Idx) : S128.Idx := fun a => match a with
  | ⟨0, _⟩ => ⟨(i 2).val, (i 2).isLt⟩
theorem val_main_v21_apply (i : S1x1x128.Idx) :
    val_main_v21 (F := F) x15 i = x15 (idx_main_v21 i) := by
  unfold val_main_v21
  exact broadcastInDim_apply _ bcast_S128_S1x1x128_2 x15 i (idx_main_v21 i) (fun a => match a with
    | ⟨0, _⟩ => by show (i 2).val = if (128 : Nat) = 1 then 0 else (i 2).val; rw [if_neg (by decide)])

def val_main_v22 : (⟨S64512x4x128, .f32⟩ : BufTy).Contents (Elt F) :=
  broadcastInDim S64512x4x128 ![0, 1, 2] bcast_S1x1x128_S64512x4x128_0_1_2 (val_main_v21 (F := F) x15)
abbrev idx_main_v22 (i : S64512x4x128.Idx) : S1x1x128.Idx := fun a => match a with
  | ⟨0, _⟩ => ⟨0, Nat.one_pos⟩
  | ⟨1, _⟩ => ⟨0, Nat.one_pos⟩
  | ⟨2, _⟩ => ⟨(i 2).val, (i 2).isLt⟩
theorem val_main_v22_apply (i : S64512x4x128.Idx) :
    val_main_v22 (F := F) x15 i = val_main_v21 (F := F) x15 (idx_main_v22 i) := by
  unfold val_main_v22
  generalize val_main_v21 (F := F) x15 = y
  exact broadcastInDim_apply _ bcast_S1x1x128_S64512x4x128_0_1_2 y i (idx_main_v22 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (128 : Nat) = 1 then 0 else (i 2).val; rw [if_neg (by decide)])

def val_main_v23 : (⟨S64512x4x128, .f32⟩ : BufTy).Contents (Elt F) :=
  addf (val_main_v20 (F := F) x4 x14) (val_main_v22 (F := F) x15)
theorem val_main_v23_apply (i : S64512x4x128.Idx) :
    val_main_v23 (F := F) x4 x14 x15 i = FloatOps.addf (val_main_v20 (F := F) x4 x14 i) (val_main_v22 (F := F) x15 i) := rfl

def val_main_cst_0 : (⟨S_, .f32⟩ : BufTy).Contents (Elt F) :=
  constant S_ .f32 0x7F800000#32
theorem val_main_cst_0_apply (i : S_.Idx) :
    val_main_cst_0 (F := F) i = FloatOps.ofBits .f32 0x7F800000#32 := rfl

def val_main_v24 : (⟨S64512x128, .f32⟩ : BufTy).Contents (Elt F) :=
  Host.reduce FloatOps.minimumf (val_main_v23 (F := F) x4 x14 x15) (val_main_cst_0 (F := F)) reducesTo_S64512x4x128_S64512x128_d1 h_S_

def val_main_v25 : (⟨S64512, .f32⟩ : BufTy).Contents (Elt F) :=
  sitofp .f32 (x6)
theorem val_main_v25_apply (i : S64512.Idx) :
    val_main_v25 (F := F) x6 i = FloatOps.sitofp .f32 (x6 i) := rfl

def val_main_v26 : (⟨S64512, .f32⟩ : BufTy).Contents (Elt F) :=
  sitofp .f32 (x7)
theorem val_main_v26_apply (i : S64512.Idx) :
    val_main_v26 (F := F) x7 i = FloatOps.sitofp .f32 (x7 i) := rfl

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v27 : (⟨S32768x128, .f32⟩ : BufTy).Contents (Elt F) :=
  broadcastInDim S32768x128 ![] bcast_S_S32768x128 (val_main_cst_1 (F := F))
abbrev idx_main_v27 (i : S32768x128.Idx) : S_.Idx := fun a => a.elim0
theorem val_main_v27_apply (i : S32768x128.Idx) :
    val_main_v27 (F := F) i = val_main_cst_1 (F := F) (idx_main_v27 i) := by
  unfold val_main_v27
  generalize val_main_cst_1 (F := F) = y
  exact broadcastInDim_apply _ bcast_S_S32768x128 y i (idx_main_v27 i) (fun a => a.elim0)

def val_main_v28 : (⟨S32768x128, .f32⟩ : BufTy).Contents (Elt F) :=
  extractStridedSlice S32768x128 ![31744, 0] (val_main_v3 (F := F) x0 x8 x9) slices_S64512x128_S32768x128_31744_0
abbrev idx_main_v28 (i : S32768x128.Idx) : S64512x128.Idx := fun a => match a with
  | ⟨0, _⟩ => ⟨31744 + (i 0).val, by have h0 : (i 0).val < 32768 := (i 0).isLt; show 31744 + (i 0).val < 64512; omega⟩
  | ⟨1, _⟩ => ⟨(i 1).val, (i 1).isLt⟩
theorem val_main_v28_apply (i : S32768x128.Idx) :
    val_main_v28 (F := F) x0 x8 x9 i = val_main_v3 (F := F) x0 x8 x9 (idx_main_v28 i) := by
  unfold val_main_v28
  generalize val_main_v3 (F := F) x0 x8 x9 = y
  exact extractStridedSlice_apply ![31744, 0] y slices_S64512x128_S32768x128_31744_0 i (idx_main_v28 i) (fun a => match a with
    | ⟨0, _⟩ => by show 31744 + (i 0).val = 31744 + (i 0).val; omega
    | ⟨1, _⟩ => by show (i 1).val = 0 + (i 1).val; omega)

def val_main_v29 : (⟨S32768x128, .f32⟩ : BufTy).Contents (Elt F) :=
  extractStridedSlice S32768x128 ![31744, 0] (val_main_v7 (F := F) x1 x10 x11) slices_S64512x128_S32768x128_31744_0
abbrev idx_main_v29 (i : S32768x128.Idx) : S64512x128.Idx := fun a => match a with
  | ⟨0, _⟩ => ⟨31744 + (i 0).val, by have h0 : (i 0).val < 32768 := (i 0).isLt; show 31744 + (i 0).val < 64512; omega⟩
  | ⟨1, _⟩ => ⟨(i 1).val, (i 1).isLt⟩
theorem val_main_v29_apply (i : S32768x128.Idx) :
    val_main_v29 (F := F) x1 x10 x11 i = val_main_v7 (F := F) x1 x10 x11 (idx_main_v29 i) := by
  unfold val_main_v29
  generalize val_main_v7 (F := F) x1 x10 x11 = y
  exact extractStridedSlice_apply ![31744, 0] y slices_S64512x128_S32768x128_31744_0 i (idx_main_v29 i) (fun a => match a with
    | ⟨0, _⟩ => by show 31744 + (i 0).val = 31744 + (i 0).val; omega
    | ⟨1, _⟩ => by show (i 1).val = 0 + (i 1).val; omega)

def val_main_v30 : (⟨S32768x128, .f32⟩ : BufTy).Contents (Elt F) :=
  extractStridedSlice S32768x128 ![31744, 0] (val_main_v19 (F := F) x3 x14 x15) slices_S64512x128_S32768x128_31744_0
abbrev idx_main_v30 (i : S32768x128.Idx) : S64512x128.Idx := fun a => match a with
  | ⟨0, _⟩ => ⟨31744 + (i 0).val, by have h0 : (i 0).val < 32768 := (i 0).isLt; show 31744 + (i 0).val < 64512; omega⟩
  | ⟨1, _⟩ => ⟨(i 1).val, (i 1).isLt⟩
theorem val_main_v30_apply (i : S32768x128.Idx) :
    val_main_v30 (F := F) x3 x14 x15 i = val_main_v19 (F := F) x3 x14 x15 (idx_main_v30 i) := by
  unfold val_main_v30
  generalize val_main_v19 (F := F) x3 x14 x15 = y
  exact extractStridedSlice_apply ![31744, 0] y slices_S64512x128_S32768x128_31744_0 i (idx_main_v30 i) (fun a => match a with
    | ⟨0, _⟩ => by show 31744 + (i 0).val = 31744 + (i 0).val; omega
    | ⟨1, _⟩ => by show (i 1).val = 0 + (i 1).val; omega)

def val_main_v31 : (⟨S32768x128, .f32⟩ : BufTy).Contents (Elt F) :=
  extractStridedSlice S32768x128 ![31744, 0] (val_main_v24 (F := F) x4 x14 x15) slices_S64512x128_S32768x128_31744_0
abbrev idx_main_v31 (i : S32768x128.Idx) : S64512x128.Idx := fun a => match a with
  | ⟨0, _⟩ => ⟨31744 + (i 0).val, by have h0 : (i 0).val < 32768 := (i 0).isLt; show 31744 + (i 0).val < 64512; omega⟩
  | ⟨1, _⟩ => ⟨(i 1).val, (i 1).isLt⟩
theorem val_main_v31_apply (i : S32768x128.Idx) :
    val_main_v31 (F := F) x4 x14 x15 i = val_main_v24 (F := F) x4 x14 x15 (idx_main_v31 i) := by
  unfold val_main_v31
  generalize val_main_v24 (F := F) x4 x14 x15 = y
  exact extractStridedSlice_apply ![31744, 0] y slices_S64512x128_S32768x128_31744_0 i (idx_main_v31 i) (fun a => match a with
    | ⟨0, _⟩ => by show 31744 + (i 0).val = 31744 + (i 0).val; omega
    | ⟨1, _⟩ => by show (i 1).val = 0 + (i 1).val; omega)

def val_main_v32 : (⟨S32768x128, .f32⟩ : BufTy).Contents (Elt F) :=
  extractStridedSlice S32768x128 ![31744, 0] (val_main_v14 (F := F) x2 x5 x12 x13) slices_S64512x128_S32768x128_31744_0
abbrev idx_main_v32 (i : S32768x128.Idx) : S64512x128.Idx := fun a => match a with
  | ⟨0, _⟩ => ⟨31744 + (i 0).val, by have h0 : (i 0).val < 32768 := (i 0).isLt; show 31744 + (i 0).val < 64512; omega⟩
  | ⟨1, _⟩ => ⟨(i 1).val, (i 1).isLt⟩
theorem val_main_v32_apply (i : S32768x128.Idx) :
    val_main_v32 (F := F) x2 x5 x12 x13 i = val_main_v14 (F := F) x2 x5 x12 x13 (idx_main_v32 i) := by
  unfold val_main_v32
  generalize val_main_v14 (F := F) x2 x5 x12 x13 = y
  exact extractStridedSlice_apply ![31744, 0] y slices_S64512x128_S32768x128_31744_0 i (idx_main_v32 i) (fun a => match a with
    | ⟨0, _⟩ => by show 31744 + (i 0).val = 31744 + (i 0).val; omega
    | ⟨1, _⟩ => by show (i 1).val = 0 + (i 1).val; omega)

def val_main_v33 : (⟨S32768x1408, .f32⟩ : BufTy).Contents (Elt F) :=
  concatenate S32768x1408 1 [⟨S32768x128, (val_main_v28 (F := F) x0 x8 x9)⟩, ⟨S32768x128, (val_main_v29 (F := F) x1 x10 x11)⟩, ⟨S32768x128, (val_main_v30 (F := F) x3 x14 x15)⟩, ⟨S32768x128, (val_main_v31 (F := F) x4 x14 x15)⟩, ⟨S32768x128, (val_main_v32 (F := F) x2 x5 x12 x13)⟩, ⟨S32768x128, (val_main_v27 (F := F))⟩, ⟨S32768x128, (val_main_v27 (F := F))⟩, ⟨S32768x128, (val_main_v27 (F := F))⟩, ⟨S32768x128, (val_main_v27 (F := F))⟩, ⟨S32768x128, (val_main_v27 (F := F))⟩, ⟨S32768x128, (val_main_v27 (F := F))⟩] concatenates_S32768x128_S32768x128_S32768x128_S32768x128_S32768x128_S32768x128_S32768x128_S32768x128_S32768x128_S32768x128_S32768x128_S32768x1408_d1

def val_main_v34 : (⟨S32768x512, .f32⟩ : BufTy).Contents (Elt F) :=
  Host.dotGeneral dot_S32768x1408_S1408x512_S32768x512_1_0_0_1_n_n none (val_main_v33 (F := F) x0 x1 x2 x3 x4 x5 x8 x9 x10 x11 x12 x13 x14 x15) (x16)
theorem lhs_main_v34_0 (i : S32768x512.Idx) (q : dot_S32768x1408_S1408x512_S32768x512_1_0_0_1_n_n.contr.Idx) :
    (dot_S32768x1408_S1408x512_S32768x512_1_0_0_1_n_n.lhsIdx i q 0).val = (i 0).val := by
  unfold DotDims.lhsIdx
  rw [dif_neg (show ¬(0 : Fin S32768x1408.rank) ∈ dot_S32768x1408_S1408x512_S32768x512_1_0_0_1_n_n.lhsBatch by decide), dif_pos (show (0 : Fin S32768x1408.rank) ∈ dot_S32768x1408_S1408x512_S32768x512_1_0_0_1_n_n.lhsNonContracting by decide)]
  rfl
theorem lhs_main_v34_1 (i : S32768x512.Idx) (q : dot_S32768x1408_S1408x512_S32768x512_1_0_0_1_n_n.contr.Idx) :
    (dot_S32768x1408_S1408x512_S32768x512_1_0_0_1_n_n.lhsIdx i q 1).val = (q ⟨0, by decide⟩).val :=
  dot_S32768x1408_S1408x512_S32768x512_1_0_0_1_n_n.lhsIdx_val_of_single rfl i q
theorem rhs_main_v34_0 (i : S32768x512.Idx) (q : dot_S32768x1408_S1408x512_S32768x512_1_0_0_1_n_n.contr.Idx) :
    (dot_S32768x1408_S1408x512_S32768x512_1_0_0_1_n_n.rhsIdx i q 0).val = (q ⟨0, by decide⟩).val :=
  dot_S32768x1408_S1408x512_S32768x512_1_0_0_1_n_n.rhsIdx_val_of_single rfl i q
theorem rhs_main_v34_1 (i : S32768x512.Idx) (q : dot_S32768x1408_S1408x512_S32768x512_1_0_0_1_n_n.contr.Idx) :
    (dot_S32768x1408_S1408x512_S32768x512_1_0_0_1_n_n.rhsIdx i q 1).val = (i 1).val := by
  unfold DotDims.rhsIdx
  rw [dif_neg (show ¬(1 : Fin S1408x512.rank) ∈ dot_S32768x1408_S1408x512_S32768x512_1_0_0_1_n_n.rhsBatch by decide), dif_pos (show (1 : Fin S1408x512.rank) ∈ dot_S32768x1408_S1408x512_S32768x512_1_0_0_1_n_n.rhsNonContracting by decide)]
  rfl
abbrev lidx_main_v34 (i : S32768x512.Idx) (k : Fin 1408) : S32768x1408.Idx := fun a => match a with
  | ⟨0, _⟩ => ⟨(i 0).val, (i 0).isLt⟩
  | ⟨1, _⟩ => ⟨k.val, k.isLt⟩
abbrev ridx_main_v34 (i : S32768x512.Idx) (k : Fin 1408) : S1408x512.Idx := fun a => match a with
  | ⟨0, _⟩ => ⟨k.val, k.isLt⟩
  | ⟨1, _⟩ => ⟨(i 1).val, (i 1).isLt⟩

theorem val_main_v34_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (i : S32768x512.Idx) :
    val_main_v34 (F := Ideal) x0 x1 x2 x3 x4 x5 x8 x9 x10 x11 x12 x13 x14 x15 x16 i = ∑ k : Fin 1408, (val_main_v33 (F := Ideal) x0 x1 x2 x3 x4 x5 x8 x9 x10 x11 x12 x13 x14 x15) (lidx_main_v34 i k) * x16 (ridx_main_v34 i k) := by
  unfold val_main_v34
  generalize val_main_v33 (F := Ideal) x0 x1 x2 x3 x4 x5 x8 x9 x10 x11 x12 x13 x14 x15 = y0
  simp only [Host.dotGeneral]
  rw [Ideal.dotGeneral_apply, ← Equiv.sum_comp (ValueIdx.contrEquiv1 dot_S32768x1408_S1408x512_S32768x512_1_0_0_1_n_n 1408 rfl rfl).symm]
  refine Finset.sum_congr rfl fun k _ => ?_
  have hk := ValueIdx.contrEquiv1_symm_val dot_S32768x1408_S1408x512_S32768x512_1_0_0_1_n_n 1408 rfl rfl k
  have el : dot_S32768x1408_S1408x512_S32768x512_1_0_0_1_n_n.lhsIdx i ((ValueIdx.contrEquiv1 dot_S32768x1408_S1408x512_S32768x512_1_0_0_1_n_n 1408 rfl rfl).symm k) = lidx_main_v34 i k := funext fun a => Fin.ext (by
    match a with
    | ⟨0, _⟩ => exact lhs_main_v34_0 _ _
    | ⟨1, _⟩ => exact (lhs_main_v34_1 _ _).trans hk)
  have er : dot_S32768x1408_S1408x512_S32768x512_1_0_0_1_n_n.rhsIdx i ((ValueIdx.contrEquiv1 dot_S32768x1408_S1408x512_S32768x512_1_0_0_1_n_n 1408 rfl rfl).symm k) = ridx_main_v34 i k := funext fun a => Fin.ext (by
    match a with
    | ⟨0, _⟩ => exact (rhs_main_v34_0 _ _).trans hk
    | ⟨1, _⟩ => exact rhs_main_v34_1 _ _)
  rw [el, er]

def val_main_v35 : (⟨S1x512, .f32⟩ : BufTy).Contents (Elt F) :=
  broadcastInDim S1x512 ![1] bcast_S512_S1x512_1 (x17)
abbrev idx_main_v35 (i : S1x512.Idx) : S512.Idx := fun a => match a with
  | ⟨0, _⟩ => ⟨(i 1).val, (i 1).isLt⟩
theorem val_main_v35_apply (i : S1x512.Idx) :
    val_main_v35 (F := F) x17 i = x17 (idx_main_v35 i) := by
  unfold val_main_v35
  exact broadcastInDim_apply _ bcast_S512_S1x512_1 x17 i (idx_main_v35 i) (fun a => match a with
    | ⟨0, _⟩ => by show (i 1).val = if (512 : Nat) = 1 then 0 else (i 1).val; rw [if_neg (by decide)])

def val_main_v36 : (⟨S32768x512, .f32⟩ : BufTy).Contents (Elt F) :=
  broadcastInDim S32768x512 ![0, 1] bcast_S1x512_S32768x512_0_1 (val_main_v35 (F := F) x17)
abbrev idx_main_v36 (i : S32768x512.Idx) : S1x512.Idx := fun a => match a with
  | ⟨0, _⟩ => ⟨0, Nat.one_pos⟩
  | ⟨1, _⟩ => ⟨(i 1).val, (i 1).isLt⟩
theorem val_main_v36_apply (i : S32768x512.Idx) :
    val_main_v36 (F := F) x17 i = val_main_v35 (F := F) x17 (idx_main_v36 i) := by
  unfold val_main_v36
  generalize val_main_v35 (F := F) x17 = y
  exact broadcastInDim_apply _ bcast_S1x512_S32768x512_0_1 y i (idx_main_v36 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v37 : (⟨S32768x512, .f32⟩ : BufTy).Contents (Elt F) :=
  addf (val_main_v34 (F := F) x0 x1 x2 x3 x4 x5 x8 x9 x10 x11 x12 x13 x14 x15 x16) (val_main_v36 (F := F) x17)
theorem val_main_v37_apply (i : S32768x512.Idx) :
    val_main_v37 (F := F) x0 x1 x2 x3 x4 x5 x8 x9 x10 x11 x12 x13 x14 x15 x16 x17 i = FloatOps.addf (val_main_v34 (F := F) x0 x1 x2 x3 x4 x5 x8 x9 x10 x11 x12 x13 x14 x15 x16 i) (val_main_v36 (F := F) x17 i) := rfl

def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

def val_main_call0_v0 : (⟨S32768x512, .f32⟩ : BufTy).Contents (Elt F) :=
  broadcastInDim S32768x512 ![] bcast_S_S32768x512 (val_main_call0_cst (F := F))
abbrev idx_main_call0_v0 (i : S32768x512.Idx) : S_.Idx := fun a => a.elim0
theorem val_main_call0_v0_apply (i : S32768x512.Idx) :
    val_main_call0_v0 (F := F) i = val_main_call0_cst (F := F) (idx_main_call0_v0 i) := by
  unfold val_main_call0_v0
  generalize val_main_call0_cst (F := F) = y
  exact broadcastInDim_apply _ bcast_S_S32768x512 y i (idx_main_call0_v0 i) (fun a => a.elim0)

def val_main_v38 : (⟨S32768x512, .f32⟩ : BufTy).Contents (Elt F) :=
  maximumf (val_main_v37 (F := F) x0 x1 x2 x3 x4 x5 x8 x9 x10 x11 x12 x13 x14 x15 x16 x17) (val_main_call0_v0 (F := F))
theorem val_main_v38_apply (i : S32768x512.Idx) :
    val_main_v38 (F := F) x0 x1 x2 x3 x4 x5 x8 x9 x10 x11 x12 x13 x14 x15 x16 x17 i = FloatOps.maximumf (val_main_v37 (F := F) x0 x1 x2 x3 x4 x5 x8 x9 x10 x11 x12 x13 x14 x15 x16 x17 i) (val_main_call0_v0 (F := F) i) := rfl

def val_main_v39 : (⟨S32768x256, .f32⟩ : BufTy).Contents (Elt F) :=
  Host.dotGeneral dot_S32768x512_S512x256_S32768x256_1_0_0_1_n_n none (val_main_v38 (F := F) x0 x1 x2 x3 x4 x5 x8 x9 x10 x11 x12 x13 x14 x15 x16 x17) (x18)
theorem lhs_main_v39_0 (i : S32768x256.Idx) (q : dot_S32768x512_S512x256_S32768x256_1_0_0_1_n_n.contr.Idx) :
    (dot_S32768x512_S512x256_S32768x256_1_0_0_1_n_n.lhsIdx i q 0).val = (i 0).val := by
  unfold DotDims.lhsIdx
  rw [dif_neg (show ¬(0 : Fin S32768x512.rank) ∈ dot_S32768x512_S512x256_S32768x256_1_0_0_1_n_n.lhsBatch by decide), dif_pos (show (0 : Fin S32768x512.rank) ∈ dot_S32768x512_S512x256_S32768x256_1_0_0_1_n_n.lhsNonContracting by decide)]
  rfl
theorem lhs_main_v39_1 (i : S32768x256.Idx) (q : dot_S32768x512_S512x256_S32768x256_1_0_0_1_n_n.contr.Idx) :
    (dot_S32768x512_S512x256_S32768x256_1_0_0_1_n_n.lhsIdx i q 1).val = (q ⟨0, by decide⟩).val :=
  dot_S32768x512_S512x256_S32768x256_1_0_0_1_n_n.lhsIdx_val_of_single rfl i q
theorem rhs_main_v39_0 (i : S32768x256.Idx) (q : dot_S32768x512_S512x256_S32768x256_1_0_0_1_n_n.contr.Idx) :
    (dot_S32768x512_S512x256_S32768x256_1_0_0_1_n_n.rhsIdx i q 0).val = (q ⟨0, by decide⟩).val :=
  dot_S32768x512_S512x256_S32768x256_1_0_0_1_n_n.rhsIdx_val_of_single rfl i q
theorem rhs_main_v39_1 (i : S32768x256.Idx) (q : dot_S32768x512_S512x256_S32768x256_1_0_0_1_n_n.contr.Idx) :
    (dot_S32768x512_S512x256_S32768x256_1_0_0_1_n_n.rhsIdx i q 1).val = (i 1).val := by
  unfold DotDims.rhsIdx
  rw [dif_neg (show ¬(1 : Fin S512x256.rank) ∈ dot_S32768x512_S512x256_S32768x256_1_0_0_1_n_n.rhsBatch by decide), dif_pos (show (1 : Fin S512x256.rank) ∈ dot_S32768x512_S512x256_S32768x256_1_0_0_1_n_n.rhsNonContracting by decide)]
  rfl
abbrev lidx_main_v39 (i : S32768x256.Idx) (k : Fin 512) : S32768x512.Idx := fun a => match a with
  | ⟨0, _⟩ => ⟨(i 0).val, (i 0).isLt⟩
  | ⟨1, _⟩ => ⟨k.val, k.isLt⟩
abbrev ridx_main_v39 (i : S32768x256.Idx) (k : Fin 512) : S512x256.Idx := fun a => match a with
  | ⟨0, _⟩ => ⟨k.val, k.isLt⟩
  | ⟨1, _⟩ => ⟨(i 1).val, (i 1).isLt⟩

theorem val_main_v39_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (i : S32768x256.Idx) :
    val_main_v39 (F := Ideal) x0 x1 x2 x3 x4 x5 x8 x9 x10 x11 x12 x13 x14 x15 x16 x17 x18 i = ∑ k : Fin 512, (val_main_v38 (F := Ideal) x0 x1 x2 x3 x4 x5 x8 x9 x10 x11 x12 x13 x14 x15 x16 x17) (lidx_main_v39 i k) * x18 (ridx_main_v39 i k) := by
  unfold val_main_v39
  generalize val_main_v38 (F := Ideal) x0 x1 x2 x3 x4 x5 x8 x9 x10 x11 x12 x13 x14 x15 x16 x17 = y0
  simp only [Host.dotGeneral]
  rw [Ideal.dotGeneral_apply, ← Equiv.sum_comp (ValueIdx.contrEquiv1 dot_S32768x512_S512x256_S32768x256_1_0_0_1_n_n 512 rfl rfl).symm]
  refine Finset.sum_congr rfl fun k _ => ?_
  have hk := ValueIdx.contrEquiv1_symm_val dot_S32768x512_S512x256_S32768x256_1_0_0_1_n_n 512 rfl rfl k
  have el : dot_S32768x512_S512x256_S32768x256_1_0_0_1_n_n.lhsIdx i ((ValueIdx.contrEquiv1 dot_S32768x512_S512x256_S32768x256_1_0_0_1_n_n 512 rfl rfl).symm k) = lidx_main_v39 i k := funext fun a => Fin.ext (by
    match a with
    | ⟨0, _⟩ => exact lhs_main_v39_0 _ _
    | ⟨1, _⟩ => exact (lhs_main_v39_1 _ _).trans hk)
  have er : dot_S32768x512_S512x256_S32768x256_1_0_0_1_n_n.rhsIdx i ((ValueIdx.contrEquiv1 dot_S32768x512_S512x256_S32768x256_1_0_0_1_n_n 512 rfl rfl).symm k) = ridx_main_v39 i k := funext fun a => Fin.ext (by
    match a with
    | ⟨0, _⟩ => exact (rhs_main_v39_0 _ _).trans hk
    | ⟨1, _⟩ => exact rhs_main_v39_1 _ _)
  rw [el, er]

def val_main_v40 : (⟨S1x256, .f32⟩ : BufTy).Contents (Elt F) :=
  broadcastInDim S1x256 ![1] bcast_S256_S1x256_1 (x19)
abbrev idx_main_v40 (i : S1x256.Idx) : S256.Idx := fun a => match a with
  | ⟨0, _⟩ => ⟨(i 1).val, (i 1).isLt⟩
theorem val_main_v40_apply (i : S1x256.Idx) :
    val_main_v40 (F := F) x19 i = x19 (idx_main_v40 i) := by
  unfold val_main_v40
  exact broadcastInDim_apply _ bcast_S256_S1x256_1 x19 i (idx_main_v40 i) (fun a => match a with
    | ⟨0, _⟩ => by show (i 1).val = if (256 : Nat) = 1 then 0 else (i 1).val; rw [if_neg (by decide)])

def val_main_v41 : (⟨S32768x256, .f32⟩ : BufTy).Contents (Elt F) :=
  broadcastInDim S32768x256 ![0, 1] bcast_S1x256_S32768x256_0_1 (val_main_v40 (F := F) x19)
abbrev idx_main_v41 (i : S32768x256.Idx) : S1x256.Idx := fun a => match a with
  | ⟨0, _⟩ => ⟨0, Nat.one_pos⟩
  | ⟨1, _⟩ => ⟨(i 1).val, (i 1).isLt⟩
theorem val_main_v41_apply (i : S32768x256.Idx) :
    val_main_v41 (F := F) x19 i = val_main_v40 (F := F) x19 (idx_main_v41 i) := by
  unfold val_main_v41
  generalize val_main_v40 (F := F) x19 = y
  exact broadcastInDim_apply _ bcast_S1x256_S32768x256_0_1 y i (idx_main_v41 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v42 : (⟨S32768x256, .f32⟩ : BufTy).Contents (Elt F) :=
  addf (val_main_v39 (F := F) x0 x1 x2 x3 x4 x5 x8 x9 x10 x11 x12 x13 x14 x15 x16 x17 x18) (val_main_v41 (F := F) x19)
theorem val_main_v42_apply (i : S32768x256.Idx) :
    val_main_v42 (F := F) x0 x1 x2 x3 x4 x5 x8 x9 x10 x11 x12 x13 x14 x15 x16 x17 x18 x19 i = FloatOps.addf (val_main_v39 (F := F) x0 x1 x2 x3 x4 x5 x8 x9 x10 x11 x12 x13 x14 x15 x16 x17 x18 i) (val_main_v41 (F := F) x19 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S32768x256, .f32⟩ : BufTy).Contents (Elt F) :=
  broadcastInDim S32768x256 ![] bcast_S_S32768x256 (val_main_call1_cst (F := F))
abbrev idx_main_call1_v0 (i : S32768x256.Idx) : S_.Idx := fun a => a.elim0
theorem val_main_call1_v0_apply (i : S32768x256.Idx) :
    val_main_call1_v0 (F := F) i = val_main_call1_cst (F := F) (idx_main_call1_v0 i) := by
  unfold val_main_call1_v0
  generalize val_main_call1_cst (F := F) = y
  exact broadcastInDim_apply _ bcast_S_S32768x256 y i (idx_main_call1_v0 i) (fun a => a.elim0)

def val_main_v43 : (⟨S32768x256, .f32⟩ : BufTy).Contents (Elt F) :=
  maximumf (val_main_v42 (F := F) x0 x1 x2 x3 x4 x5 x8 x9 x10 x11 x12 x13 x14 x15 x16 x17 x18 x19) (val_main_call1_v0 (F := F))
theorem val_main_v43_apply (i : S32768x256.Idx) :
    val_main_v43 (F := F) x0 x1 x2 x3 x4 x5 x8 x9 x10 x11 x12 x13 x14 x15 x16 x17 x18 x19 i = FloatOps.maximumf (val_main_v42 (F := F) x0 x1 x2 x3 x4 x5 x8 x9 x10 x11 x12 x13 x14 x15 x16 x17 x18 x19 i) (val_main_call1_v0 (F := F) i) := rfl

def val_main_v44 : (⟨S32768x128, .f32⟩ : BufTy).Contents (Elt F) :=
  Host.dotGeneral dot_S32768x256_S256x128_S32768x128_1_0_0_1_n_n none (val_main_v43 (F := F) x0 x1 x2 x3 x4 x5 x8 x9 x10 x11 x12 x13 x14 x15 x16 x17 x18 x19) (x20)
theorem lhs_main_v44_0 (i : S32768x128.Idx) (q : dot_S32768x256_S256x128_S32768x128_1_0_0_1_n_n.contr.Idx) :
    (dot_S32768x256_S256x128_S32768x128_1_0_0_1_n_n.lhsIdx i q 0).val = (i 0).val := by
  unfold DotDims.lhsIdx
  rw [dif_neg (show ¬(0 : Fin S32768x256.rank) ∈ dot_S32768x256_S256x128_S32768x128_1_0_0_1_n_n.lhsBatch by decide), dif_pos (show (0 : Fin S32768x256.rank) ∈ dot_S32768x256_S256x128_S32768x128_1_0_0_1_n_n.lhsNonContracting by decide)]
  rfl
theorem lhs_main_v44_1 (i : S32768x128.Idx) (q : dot_S32768x256_S256x128_S32768x128_1_0_0_1_n_n.contr.Idx) :
    (dot_S32768x256_S256x128_S32768x128_1_0_0_1_n_n.lhsIdx i q 1).val = (q ⟨0, by decide⟩).val :=
  dot_S32768x256_S256x128_S32768x128_1_0_0_1_n_n.lhsIdx_val_of_single rfl i q
theorem rhs_main_v44_0 (i : S32768x128.Idx) (q : dot_S32768x256_S256x128_S32768x128_1_0_0_1_n_n.contr.Idx) :
    (dot_S32768x256_S256x128_S32768x128_1_0_0_1_n_n.rhsIdx i q 0).val = (q ⟨0, by decide⟩).val :=
  dot_S32768x256_S256x128_S32768x128_1_0_0_1_n_n.rhsIdx_val_of_single rfl i q
theorem rhs_main_v44_1 (i : S32768x128.Idx) (q : dot_S32768x256_S256x128_S32768x128_1_0_0_1_n_n.contr.Idx) :
    (dot_S32768x256_S256x128_S32768x128_1_0_0_1_n_n.rhsIdx i q 1).val = (i 1).val := by
  unfold DotDims.rhsIdx
  rw [dif_neg (show ¬(1 : Fin S256x128.rank) ∈ dot_S32768x256_S256x128_S32768x128_1_0_0_1_n_n.rhsBatch by decide), dif_pos (show (1 : Fin S256x128.rank) ∈ dot_S32768x256_S256x128_S32768x128_1_0_0_1_n_n.rhsNonContracting by decide)]
  rfl
abbrev lidx_main_v44 (i : S32768x128.Idx) (k : Fin 256) : S32768x256.Idx := fun a => match a with
  | ⟨0, _⟩ => ⟨(i 0).val, (i 0).isLt⟩
  | ⟨1, _⟩ => ⟨k.val, k.isLt⟩
abbrev ridx_main_v44 (i : S32768x128.Idx) (k : Fin 256) : S256x128.Idx := fun a => match a with
  | ⟨0, _⟩ => ⟨k.val, k.isLt⟩
  | ⟨1, _⟩ => ⟨(i 1).val, (i 1).isLt⟩

theorem val_main_v44_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (i : S32768x128.Idx) :
    val_main_v44 (F := Ideal) x0 x1 x2 x3 x4 x5 x8 x9 x10 x11 x12 x13 x14 x15 x16 x17 x18 x19 x20 i = ∑ k : Fin 256, (val_main_v43 (F := Ideal) x0 x1 x2 x3 x4 x5 x8 x9 x10 x11 x12 x13 x14 x15 x16 x17 x18 x19) (lidx_main_v44 i k) * x20 (ridx_main_v44 i k) := by
  unfold val_main_v44
  generalize val_main_v43 (F := Ideal) x0 x1 x2 x3 x4 x5 x8 x9 x10 x11 x12 x13 x14 x15 x16 x17 x18 x19 = y0
  simp only [Host.dotGeneral]
  rw [Ideal.dotGeneral_apply, ← Equiv.sum_comp (ValueIdx.contrEquiv1 dot_S32768x256_S256x128_S32768x128_1_0_0_1_n_n 256 rfl rfl).symm]
  refine Finset.sum_congr rfl fun k _ => ?_
  have hk := ValueIdx.contrEquiv1_symm_val dot_S32768x256_S256x128_S32768x128_1_0_0_1_n_n 256 rfl rfl k
  have el : dot_S32768x256_S256x128_S32768x128_1_0_0_1_n_n.lhsIdx i ((ValueIdx.contrEquiv1 dot_S32768x256_S256x128_S32768x128_1_0_0_1_n_n 256 rfl rfl).symm k) = lidx_main_v44 i k := funext fun a => Fin.ext (by
    match a with
    | ⟨0, _⟩ => exact lhs_main_v44_0 _ _
    | ⟨1, _⟩ => exact (lhs_main_v44_1 _ _).trans hk)
  have er : dot_S32768x256_S256x128_S32768x128_1_0_0_1_n_n.rhsIdx i ((ValueIdx.contrEquiv1 dot_S32768x256_S256x128_S32768x128_1_0_0_1_n_n 256 rfl rfl).symm k) = ridx_main_v44 i k := funext fun a => Fin.ext (by
    match a with
    | ⟨0, _⟩ => exact (rhs_main_v44_0 _ _).trans hk
    | ⟨1, _⟩ => exact rhs_main_v44_1 _ _)
  rw [el, er]

def val_main_v45 : (⟨S1x128, .f32⟩ : BufTy).Contents (Elt F) :=
  broadcastInDim S1x128 ![1] bcast_S128_S1x128_1 (x21)
abbrev idx_main_v45 (i : S1x128.Idx) : S128.Idx := fun a => match a with
  | ⟨0, _⟩ => ⟨(i 1).val, (i 1).isLt⟩
theorem val_main_v45_apply (i : S1x128.Idx) :
    val_main_v45 (F := F) x21 i = x21 (idx_main_v45 i) := by
  unfold val_main_v45
  exact broadcastInDim_apply _ bcast_S128_S1x128_1 x21 i (idx_main_v45 i) (fun a => match a with
    | ⟨0, _⟩ => by show (i 1).val = if (128 : Nat) = 1 then 0 else (i 1).val; rw [if_neg (by decide)])

def val_main_v46 : (⟨S32768x128, .f32⟩ : BufTy).Contents (Elt F) :=
  broadcastInDim S32768x128 ![0, 1] bcast_S1x128_S32768x128_0_1 (val_main_v45 (F := F) x21)
abbrev idx_main_v46 (i : S32768x128.Idx) : S1x128.Idx := fun a => match a with
  | ⟨0, _⟩ => ⟨0, Nat.one_pos⟩
  | ⟨1, _⟩ => ⟨(i 1).val, (i 1).isLt⟩
theorem val_main_v46_apply (i : S32768x128.Idx) :
    val_main_v46 (F := F) x21 i = val_main_v45 (F := F) x21 (idx_main_v46 i) := by
  unfold val_main_v46
  generalize val_main_v45 (F := F) x21 = y
  exact broadcastInDim_apply _ bcast_S1x128_S32768x128_0_1 y i (idx_main_v46 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v47 : (⟨S32768x128, .f32⟩ : BufTy).Contents (Elt F) :=
  addf (val_main_v44 (F := F) x0 x1 x2 x3 x4 x5 x8 x9 x10 x11 x12 x13 x14 x15 x16 x17 x18 x19 x20) (val_main_v46 (F := F) x21)
theorem val_main_v47_apply (i : S32768x128.Idx) :
    val_main_v47 (F := F) x0 x1 x2 x3 x4 x5 x8 x9 x10 x11 x12 x13 x14 x15 x16 x17 x18 x19 x20 x21 i = FloatOps.addf (val_main_v44 (F := F) x0 x1 x2 x3 x4 x5 x8 x9 x10 x11 x12 x13 x14 x15 x16 x17 x18 x19 x20 i) (val_main_v46 (F := F) x21 i) := rfl

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v0 : (⟨S32768x128, .f32⟩ : BufTy).Contents (Elt F) :=
  broadcastInDim S32768x128 ![] bcast_S_S32768x128 (val_main_call2_cst (F := F))
abbrev idx_main_call2_v0 (i : S32768x128.Idx) : S_.Idx := fun a => a.elim0
theorem val_main_call2_v0_apply (i : S32768x128.Idx) :
    val_main_call2_v0 (F := F) i = val_main_call2_cst (F := F) (idx_main_call2_v0 i) := by
  unfold val_main_call2_v0
  generalize val_main_call2_cst (F := F) = y
  exact broadcastInDim_apply _ bcast_S_S32768x128 y i (idx_main_call2_v0 i) (fun a => a.elim0)

def val_main_v48 : (⟨S32768x128, .f32⟩ : BufTy).Contents (Elt F) :=
  maximumf (val_main_v47 (F := F) x0 x1 x2 x3 x4 x5 x8 x9 x10 x11 x12 x13 x14 x15 x16 x17 x18 x19 x20 x21) (val_main_call2_v0 (F := F))
theorem val_main_v48_apply (i : S32768x128.Idx) :
    val_main_v48 (F := F) x0 x1 x2 x3 x4 x5 x8 x9 x10 x11 x12 x13 x14 x15 x16 x17 x18 x19 x20 x21 i = FloatOps.maximumf (val_main_v47 (F := F) x0 x1 x2 x3 x4 x5 x8 x9 x10 x11 x12 x13 x14 x15 x16 x17 x18 x19 x20 x21 i) (val_main_call2_v0 (F := F) i) := rfl

def val_main_v49 : (⟨S1024x16x2x128, .f32⟩ : BufTy).Contents (Elt F) :=
  shapeCast _ (val_main_v48 (F := F) x0 x1 x2 x3 x4 x5 x8 x9 x10 x11 x12 x13 x14 x15 x16 x17 x18 x19 x20 x21) shapeCasts_S32768x128_S1024x16x2x128
abbrev idx_main_v49 (i : S1024x16x2x128.Idx) : S32768x128.Idx := fun a => match a with
  | ⟨0, _⟩ => ⟨((((i 0).val * 16 + (i 1).val) * 2 + (i 2).val) * 128 + (i 3).val) / 128, by have h0 : (i 0).val < 1024 := (i 0).isLt; have h1 : (i 1).val < 16 := (i 1).isLt; have h2 : (i 2).val < 2 := (i 2).isLt; have h3 : (i 3).val < 128 := (i 3).isLt; show ((((i 0).val * 16 + (i 1).val) * 2 + (i 2).val) * 128 + (i 3).val) / 128 < 32768; omega⟩
  | ⟨1, _⟩ => ⟨((((i 0).val * 16 + (i 1).val) * 2 + (i 2).val) * 128 + (i 3).val) % 128, by have h0 : (i 0).val < 1024 := (i 0).isLt; have h1 : (i 1).val < 16 := (i 1).isLt; have h2 : (i 2).val < 2 := (i 2).isLt; have h3 : (i 3).val < 128 := (i 3).isLt; show ((((i 0).val * 16 + (i 1).val) * 2 + (i 2).val) * 128 + (i 3).val) % 128 < 128; omega⟩
theorem val_main_v49_apply (i : S1024x16x2x128.Idx) :
    val_main_v49 (F := F) x0 x1 x2 x3 x4 x5 x8 x9 x10 x11 x12 x13 x14 x15 x16 x17 x18 x19 x20 x21 i = val_main_v48 (F := F) x0 x1 x2 x3 x4 x5 x8 x9 x10 x11 x12 x13 x14 x15 x16 x17 x18 x19 x20 x21 (idx_main_v49 i) := by
  unfold val_main_v49
  generalize val_main_v48 (F := F) x0 x1 x2 x3 x4 x5 x8 x9 x10 x11 x12 x13 x14 x15 x16 x17 x18 x19 x20 x21 = y
  exact shapeCast_apply y shapeCasts_S32768x128_S1024x16x2x128 i (idx_main_v49 i)
    (by rewrite [Shape.rowMajor_val_two, Shape.rowMajor_val_four]; have h0 : (i 0).val < 1024 := (i 0).isLt; have h1 : (i 1).val < 16 := (i 1).isLt; have h2 : (i 2).val < 2 := (i 2).isLt; have h3 : (i 3).val < 128 := (i 3).isLt; show ((((i 0).val * 16 + (i 1).val) * 2 + (i 2).val) * 128 + (i 3).val) / 128 * 128 + ((((i 0).val * 16 + (i 1).val) * 2 + (i 2).val) * 128 + (i 3).val) % 128 = (((i 0).val * 16 + (i 1).val) * 2 + (i 2).val) * 128 + (i 3).val; omega)

def val_main_v50 : (⟨S1024x16x2x128, .f32⟩ : BufTy).Contents (Elt F) :=
  shapeCast _ (val_main_v27 (F := F)) shapeCasts_S32768x128_S1024x16x2x128
abbrev idx_main_v50 (i : S1024x16x2x128.Idx) : S32768x128.Idx := fun a => match a with
  | ⟨0, _⟩ => ⟨((((i 0).val * 16 + (i 1).val) * 2 + (i 2).val) * 128 + (i 3).val) / 128, by have h0 : (i 0).val < 1024 := (i 0).isLt; have h1 : (i 1).val < 16 := (i 1).isLt; have h2 : (i 2).val < 2 := (i 2).isLt; have h3 : (i 3).val < 128 := (i 3).isLt; show ((((i 0).val * 16 + (i 1).val) * 2 + (i 2).val) * 128 + (i 3).val) / 128 < 32768; omega⟩
  | ⟨1, _⟩ => ⟨((((i 0).val * 16 + (i 1).val) * 2 + (i 2).val) * 128 + (i 3).val) % 128, by have h0 : (i 0).val < 1024 := (i 0).isLt; have h1 : (i 1).val < 16 := (i 1).isLt; have h2 : (i 2).val < 2 := (i 2).isLt; have h3 : (i 3).val < 128 := (i 3).isLt; show ((((i 0).val * 16 + (i 1).val) * 2 + (i 2).val) * 128 + (i 3).val) % 128 < 128; omega⟩
theorem val_main_v50_apply (i : S1024x16x2x128.Idx) :
    val_main_v50 (F := F) i = val_main_v27 (F := F) (idx_main_v50 i) := by
  unfold val_main_v50
  generalize val_main_v27 (F := F) = y
  exact shapeCast_apply y shapeCasts_S32768x128_S1024x16x2x128 i (idx_main_v50 i)
    (by rewrite [Shape.rowMajor_val_two, Shape.rowMajor_val_four]; have h0 : (i 0).val < 1024 := (i 0).isLt; have h1 : (i 1).val < 16 := (i 1).isLt; have h2 : (i 2).val < 2 := (i 2).isLt; have h3 : (i 3).val < 128 := (i 3).isLt; show ((((i 0).val * 16 + (i 1).val) * 2 + (i 2).val) * 128 + (i 3).val) / 128 * 128 + ((((i 0).val * 16 + (i 1).val) * 2 + (i 2).val) * 128 + (i 3).val) % 128 = (((i 0).val * 16 + (i 1).val) * 2 + (i 2).val) * 128 + (i 3).val; omega)

def val_main_v51 : (⟨S1024x16x2x128, .f32⟩ : BufTy).Contents (Elt F) :=
  shapeCast _ (val_main_v27 (F := F)) shapeCasts_S32768x128_S1024x16x2x128
abbrev idx_main_v51 (i : S1024x16x2x128.Idx) : S32768x128.Idx := fun a => match a with
  | ⟨0, _⟩ => ⟨((((i 0).val * 16 + (i 1).val) * 2 + (i 2).val) * 128 + (i 3).val) / 128, by have h0 : (i 0).val < 1024 := (i 0).isLt; have h1 : (i 1).val < 16 := (i 1).isLt; have h2 : (i 2).val < 2 := (i 2).isLt; have h3 : (i 3).val < 128 := (i 3).isLt; show ((((i 0).val * 16 + (i 1).val) * 2 + (i 2).val) * 128 + (i 3).val) / 128 < 32768; omega⟩
  | ⟨1, _⟩ => ⟨((((i 0).val * 16 + (i 1).val) * 2 + (i 2).val) * 128 + (i 3).val) % 128, by have h0 : (i 0).val < 1024 := (i 0).isLt; have h1 : (i 1).val < 16 := (i 1).isLt; have h2 : (i 2).val < 2 := (i 2).isLt; have h3 : (i 3).val < 128 := (i 3).isLt; show ((((i 0).val * 16 + (i 1).val) * 2 + (i 2).val) * 128 + (i 3).val) % 128 < 128; omega⟩
theorem val_main_v51_apply (i : S1024x16x2x128.Idx) :
    val_main_v51 (F := F) i = val_main_v27 (F := F) (idx_main_v51 i) := by
  unfold val_main_v51
  generalize val_main_v27 (F := F) = y
  exact shapeCast_apply y shapeCasts_S32768x128_S1024x16x2x128 i (idx_main_v51 i)
    (by rewrite [Shape.rowMajor_val_two, Shape.rowMajor_val_four]; have h0 : (i 0).val < 1024 := (i 0).isLt; have h1 : (i 1).val < 16 := (i 1).isLt; have h2 : (i 2).val < 2 := (i 2).isLt; have h3 : (i 3).val < 128 := (i 3).isLt; show ((((i 0).val * 16 + (i 1).val) * 2 + (i 2).val) * 128 + (i 3).val) / 128 * 128 + ((((i 0).val * 16 + (i 1).val) * 2 + (i 2).val) * 128 + (i 3).val) % 128 = (((i 0).val * 16 + (i 1).val) * 2 + (i 2).val) * 128 + (i 3).val; omega)

def val_main_v52 : (⟨S16384, .f32⟩ : BufTy).Contents (Elt F) :=
  extractStridedSlice S16384 ![15360] (val_main_v25 (F := F) x6) slices_S64512_S16384_15360
abbrev idx_main_v52 (i : S16384.Idx) : S64512.Idx := fun a => match a with
  | ⟨0, _⟩ => ⟨15360 + (i 0).val, by have h0 : (i 0).val < 16384 := (i 0).isLt; show 15360 + (i 0).val < 64512; omega⟩
theorem val_main_v52_apply (i : S16384.Idx) :
    val_main_v52 (F := F) x6 i = val_main_v25 (F := F) x6 (idx_main_v52 i) := by
  unfold val_main_v52
  generalize val_main_v25 (F := F) x6 = y
  exact extractStridedSlice_apply ![15360] y slices_S64512_S16384_15360 i (idx_main_v52 i) (fun a => match a with
    | ⟨0, _⟩ => by show 15360 + (i 0).val = 15360 + (i 0).val; omega)

def val_main_v53 : (⟨S1024x16x1, .f32⟩ : BufTy).Contents (Elt F) :=
  shapeCast _ (val_main_v52 (F := F) x6) shapeCasts_S16384_S1024x16x1
abbrev idx_main_v53 (i : S1024x16x1.Idx) : S16384.Idx := fun a => match a with
  | ⟨0, _⟩ => ⟨((i 0).val * 16 + (i 1).val) * 1 + (i 2).val, by have h0 : (i 0).val < 1024 := (i 0).isLt; have h1 : (i 1).val < 16 := (i 1).isLt; have h2 : (i 2).val < 1 := (i 2).isLt; show ((i 0).val * 16 + (i 1).val) * 1 + (i 2).val < 16384; omega⟩
theorem val_main_v53_apply (i : S1024x16x1.Idx) :
    val_main_v53 (F := F) x6 i = val_main_v52 (F := F) x6 (idx_main_v53 i) := by
  unfold val_main_v53
  generalize val_main_v52 (F := F) x6 = y
  exact shapeCast_apply y shapeCasts_S16384_S1024x16x1 i (idx_main_v53 i)
    (by rewrite [Shape.rowMajor_val_one, Shape.rowMajor_val_three]; have h0 : (i 0).val < 1024 := (i 0).isLt; have h1 : (i 1).val < 16 := (i 1).isLt; have h2 : (i 2).val < 1 := (i 2).isLt; show ((i 0).val * 16 + (i 1).val) * 1 + (i 2).val = ((i 0).val * 16 + (i 1).val) * 1 + (i 2).val; omega)

def val_main_v54 : (⟨S16384, .f32⟩ : BufTy).Contents (Elt F) :=
  extractStridedSlice S16384 ![15360] (val_main_v26 (F := F) x7) slices_S64512_S16384_15360
abbrev idx_main_v54 (i : S16384.Idx) : S64512.Idx := fun a => match a with
  | ⟨0, _⟩ => ⟨15360 + (i 0).val, by have h0 : (i 0).val < 16384 := (i 0).isLt; show 15360 + (i 0).val < 64512; omega⟩
theorem val_main_v54_apply (i : S16384.Idx) :
    val_main_v54 (F := F) x7 i = val_main_v26 (F := F) x7 (idx_main_v54 i) := by
  unfold val_main_v54
  generalize val_main_v26 (F := F) x7 = y
  exact extractStridedSlice_apply ![15360] y slices_S64512_S16384_15360 i (idx_main_v54 i) (fun a => match a with
    | ⟨0, _⟩ => by show 15360 + (i 0).val = 15360 + (i 0).val; omega)

def val_main_v55 : (⟨S1024x16x1, .f32⟩ : BufTy).Contents (Elt F) :=
  shapeCast _ (val_main_v54 (F := F) x7) shapeCasts_S16384_S1024x16x1
abbrev idx_main_v55 (i : S1024x16x1.Idx) : S16384.Idx := fun a => match a with
  | ⟨0, _⟩ => ⟨((i 0).val * 16 + (i 1).val) * 1 + (i 2).val, by have h0 : (i 0).val < 1024 := (i 0).isLt; have h1 : (i 1).val < 16 := (i 1).isLt; have h2 : (i 2).val < 1 := (i 2).isLt; show ((i 0).val * 16 + (i 1).val) * 1 + (i 2).val < 16384; omega⟩
theorem val_main_v55_apply (i : S1024x16x1.Idx) :
    val_main_v55 (F := F) x7 i = val_main_v54 (F := F) x7 (idx_main_v55 i) := by
  unfold val_main_v55
  generalize val_main_v54 (F := F) x7 = y
  exact shapeCast_apply y shapeCasts_S16384_S1024x16x1 i (idx_main_v55 i)
    (by rewrite [Shape.rowMajor_val_one, Shape.rowMajor_val_three]; have h0 : (i 0).val < 1024 := (i 0).isLt; have h1 : (i 1).val < 16 := (i 1).isLt; have h2 : (i 2).val < 1 := (i 2).isLt; show ((i 0).val * 16 + (i 1).val) * 1 + (i 2).val = ((i 0).val * 16 + (i 1).val) * 1 + (i 2).val; omega)

def val_main_v56 : (⟨S1024x16x1x128, .f32⟩ : BufTy).Contents (Elt F) :=
  extractStridedSlice S1024x16x1x128 ![0, 0, 0, 0] (val_main_v49 (F := F) x0 x1 x2 x3 x4 x5 x8 x9 x10 x11 x12 x13 x14 x15 x16 x17 x18 x19 x20 x21) slices_S1024x16x2x128_S1024x16x1x128_0_0_0_0
abbrev idx_main_v56 (i : S1024x16x1x128.Idx) : S1024x16x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v56_apply (i : S1024x16x1x128.Idx) :
    val_main_v56 (F := F) x0 x1 x2 x3 x4 x5 x8 x9 x10 x11 x12 x13 x14 x15 x16 x17 x18 x19 x20 x21 i = val_main_v49 (F := F) x0 x1 x2 x3 x4 x5 x8 x9 x10 x11 x12 x13 x14 x15 x16 x17 x18 x19 x20 x21 (idx_main_v56 i) := by
  unfold val_main_v56
  generalize val_main_v49 (F := F) x0 x1 x2 x3 x4 x5 x8 x9 x10 x11 x12 x13 x14 x15 x16 x17 x18 x19 x20 x21 = y
  exact extractStridedSlice_apply ![0, 0, 0, 0] y slices_S1024x16x2x128_S1024x16x1x128_0_0_0_0 i (idx_main_v56 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v57 : (⟨S1024x16x128, .f32⟩ : BufTy).Contents (Elt F) :=
  shapeCast _ (val_main_v56 (F := F) x0 x1 x2 x3 x4 x5 x8 x9 x10 x11 x12 x13 x14 x15 x16 x17 x18 x19 x20 x21) shapeCasts_S1024x16x1x128_S1024x16x128
abbrev idx_main_v57 (i : S1024x16x128.Idx) : S1024x16x1x128.Idx := fun a => match a with
  | ⟨0, _⟩ => ⟨(((i 0).val * 16 + (i 1).val) * 128 + (i 2).val) / 2048, by have h0 : (i 0).val < 1024 := (i 0).isLt; have h1 : (i 1).val < 16 := (i 1).isLt; have h2 : (i 2).val < 128 := (i 2).isLt; show (((i 0).val * 16 + (i 1).val) * 128 + (i 2).val) / 2048 < 1024; omega⟩
  | ⟨1, _⟩ => ⟨(((i 0).val * 16 + (i 1).val) * 128 + (i 2).val) / 128 % 16, by have h0 : (i 0).val < 1024 := (i 0).isLt; have h1 : (i 1).val < 16 := (i 1).isLt; have h2 : (i 2).val < 128 := (i 2).isLt; show (((i 0).val * 16 + (i 1).val) * 128 + (i 2).val) / 128 % 16 < 16; omega⟩
  | ⟨2, _⟩ => ⟨0, Nat.one_pos⟩
  | ⟨3, _⟩ => ⟨(((i 0).val * 16 + (i 1).val) * 128 + (i 2).val) % 128, by have h0 : (i 0).val < 1024 := (i 0).isLt; have h1 : (i 1).val < 16 := (i 1).isLt; have h2 : (i 2).val < 128 := (i 2).isLt; show (((i 0).val * 16 + (i 1).val) * 128 + (i 2).val) % 128 < 128; omega⟩
theorem val_main_v57_apply (i : S1024x16x128.Idx) :
    val_main_v57 (F := F) x0 x1 x2 x3 x4 x5 x8 x9 x10 x11 x12 x13 x14 x15 x16 x17 x18 x19 x20 x21 i = val_main_v56 (F := F) x0 x1 x2 x3 x4 x5 x8 x9 x10 x11 x12 x13 x14 x15 x16 x17 x18 x19 x20 x21 (idx_main_v57 i) := by
  unfold val_main_v57
  generalize val_main_v56 (F := F) x0 x1 x2 x3 x4 x5 x8 x9 x10 x11 x12 x13 x14 x15 x16 x17 x18 x19 x20 x21 = y
  exact shapeCast_apply y shapeCasts_S1024x16x1x128_S1024x16x128 i (idx_main_v57 i)
    (by rewrite [Shape.rowMajor_val_four, Shape.rowMajor_val_three]; have h0 : (i 0).val < 1024 := (i 0).isLt; have h1 : (i 1).val < 16 := (i 1).isLt; have h2 : (i 2).val < 128 := (i 2).isLt; show (((((i 0).val * 16 + (i 1).val) * 128 + (i 2).val) / 2048 * 16 + (((i 0).val * 16 + (i 1).val) * 128 + (i 2).val) / 128 % 16) * 1 + 0) * 128 + (((i 0).val * 16 + (i 1).val) * 128 + (i 2).val) % 128 = ((i 0).val * 16 + (i 1).val) * 128 + (i 2).val; omega)

def val_main_v58 : (⟨S1024x16x128, .f32⟩ : BufTy).Contents (Elt F) :=
  broadcastInDim S1024x16x128 ![0, 1, 2] bcast_S1024x16x1_S1024x16x128_0_1_2 (val_main_v53 (F := F) x6)
abbrev idx_main_v58 (i : S1024x16x128.Idx) : S1024x16x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v58_apply (i : S1024x16x128.Idx) :
    val_main_v58 (F := F) x6 i = val_main_v53 (F := F) x6 (idx_main_v58 i) := by
  unfold val_main_v58
  generalize val_main_v53 (F := F) x6 = y
  exact broadcastInDim_apply _ bcast_S1024x16x1_S1024x16x128_0_1_2 y i (idx_main_v58 i) (fun a => match a with
    | ⟨0, _⟩ => by show (i 0).val = if (1024 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])

def val_main_v59 : (⟨S1024x16x128, .f32⟩ : BufTy).Contents (Elt F) :=
  mulf (val_main_v57 (F := F) x0 x1 x2 x3 x4 x5 x8 x9 x10 x11 x12 x13 x14 x15 x16 x17 x18 x19 x20 x21) (val_main_v58 (F := F) x6)
theorem val_main_v59_apply (i : S1024x16x128.Idx) :
    val_main_v59 (F := F) x0 x1 x2 x3 x4 x5 x6 x8 x9 x10 x11 x12 x13 x14 x15 x16 x17 x18 x19 x20 x21 i = FloatOps.mulf (val_main_v57 (F := F) x0 x1 x2 x3 x4 x5 x8 x9 x10 x11 x12 x13 x14 x15 x16 x17 x18 x19 x20 x21 i) (val_main_v58 (F := F) x6 i) := rfl

def val_main_v60 : (⟨S16384x128, .f32⟩ : BufTy).Contents (Elt F) :=
  shapeCast _ (val_main_v59 (F := F) x0 x1 x2 x3 x4 x5 x6 x8 x9 x10 x11 x12 x13 x14 x15 x16 x17 x18 x19 x20 x21) shapeCasts_S1024x16x128_S16384x128
abbrev idx_main_v60 (i : S16384x128.Idx) : S1024x16x128.Idx := fun a => match a with
  | ⟨0, _⟩ => ⟨((i 0).val * 128 + (i 1).val) / 2048, by have h0 : (i 0).val < 16384 := (i 0).isLt; have h1 : (i 1).val < 128 := (i 1).isLt; show ((i 0).val * 128 + (i 1).val) / 2048 < 1024; omega⟩
  | ⟨1, _⟩ => ⟨((i 0).val * 128 + (i 1).val) / 128 % 16, by have h0 : (i 0).val < 16384 := (i 0).isLt; have h1 : (i 1).val < 128 := (i 1).isLt; show ((i 0).val * 128 + (i 1).val) / 128 % 16 < 16; omega⟩
  | ⟨2, _⟩ => ⟨((i 0).val * 128 + (i 1).val) % 128, by have h0 : (i 0).val < 16384 := (i 0).isLt; have h1 : (i 1).val < 128 := (i 1).isLt; show ((i 0).val * 128 + (i 1).val) % 128 < 128; omega⟩
theorem val_main_v60_apply (i : S16384x128.Idx) :
    val_main_v60 (F := F) x0 x1 x2 x3 x4 x5 x6 x8 x9 x10 x11 x12 x13 x14 x15 x16 x17 x18 x19 x20 x21 i = val_main_v59 (F := F) x0 x1 x2 x3 x4 x5 x6 x8 x9 x10 x11 x12 x13 x14 x15 x16 x17 x18 x19 x20 x21 (idx_main_v60 i) := by
  unfold val_main_v60
  generalize val_main_v59 (F := F) x0 x1 x2 x3 x4 x5 x6 x8 x9 x10 x11 x12 x13 x14 x15 x16 x17 x18 x19 x20 x21 = y
  exact shapeCast_apply y shapeCasts_S1024x16x128_S16384x128 i (idx_main_v60 i)
    (by rewrite [Shape.rowMajor_val_three, Shape.rowMajor_val_two]; have h0 : (i 0).val < 16384 := (i 0).isLt; have h1 : (i 1).val < 128 := (i 1).isLt; show (((i 0).val * 128 + (i 1).val) / 2048 * 16 + ((i 0).val * 128 + (i 1).val) / 128 % 16) * 128 + ((i 0).val * 128 + (i 1).val) % 128 = (i 0).val * 128 + (i 1).val; omega)

def val_main_v61 : (⟨S1024x16x1x128, .f32⟩ : BufTy).Contents (Elt F) :=
  extractStridedSlice S1024x16x1x128 ![0, 0, 0, 0] (val_main_v50 (F := F)) slices_S1024x16x2x128_S1024x16x1x128_0_0_0_0
abbrev idx_main_v61 (i : S1024x16x1x128.Idx) : S1024x16x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v61_apply (i : S1024x16x1x128.Idx) :
    val_main_v61 (F := F) i = val_main_v50 (F := F) (idx_main_v61 i) := by
  unfold val_main_v61
  generalize val_main_v50 (F := F) = y
  exact extractStridedSlice_apply ![0, 0, 0, 0] y slices_S1024x16x2x128_S1024x16x1x128_0_0_0_0 i (idx_main_v61 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v62 : (⟨S1024x16x128, .f32⟩ : BufTy).Contents (Elt F) :=
  shapeCast _ (val_main_v61 (F := F)) shapeCasts_S1024x16x1x128_S1024x16x128
abbrev idx_main_v62 (i : S1024x16x128.Idx) : S1024x16x1x128.Idx := fun a => match a with
  | ⟨0, _⟩ => ⟨(((i 0).val * 16 + (i 1).val) * 128 + (i 2).val) / 2048, by have h0 : (i 0).val < 1024 := (i 0).isLt; have h1 : (i 1).val < 16 := (i 1).isLt; have h2 : (i 2).val < 128 := (i 2).isLt; show (((i 0).val * 16 + (i 1).val) * 128 + (i 2).val) / 2048 < 1024; omega⟩
  | ⟨1, _⟩ => ⟨(((i 0).val * 16 + (i 1).val) * 128 + (i 2).val) / 128 % 16, by have h0 : (i 0).val < 1024 := (i 0).isLt; have h1 : (i 1).val < 16 := (i 1).isLt; have h2 : (i 2).val < 128 := (i 2).isLt; show (((i 0).val * 16 + (i 1).val) * 128 + (i 2).val) / 128 % 16 < 16; omega⟩
  | ⟨2, _⟩ => ⟨0, Nat.one_pos⟩
  | ⟨3, _⟩ => ⟨(((i 0).val * 16 + (i 1).val) * 128 + (i 2).val) % 128, by have h0 : (i 0).val < 1024 := (i 0).isLt; have h1 : (i 1).val < 16 := (i 1).isLt; have h2 : (i 2).val < 128 := (i 2).isLt; show (((i 0).val * 16 + (i 1).val) * 128 + (i 2).val) % 128 < 128; omega⟩
theorem val_main_v62_apply (i : S1024x16x128.Idx) :
    val_main_v62 (F := F) i = val_main_v61 (F := F) (idx_main_v62 i) := by
  unfold val_main_v62
  generalize val_main_v61 (F := F) = y
  exact shapeCast_apply y shapeCasts_S1024x16x1x128_S1024x16x128 i (idx_main_v62 i)
    (by rewrite [Shape.rowMajor_val_four, Shape.rowMajor_val_three]; have h0 : (i 0).val < 1024 := (i 0).isLt; have h1 : (i 1).val < 16 := (i 1).isLt; have h2 : (i 2).val < 128 := (i 2).isLt; show (((((i 0).val * 16 + (i 1).val) * 128 + (i 2).val) / 2048 * 16 + (((i 0).val * 16 + (i 1).val) * 128 + (i 2).val) / 128 % 16) * 1 + 0) * 128 + (((i 0).val * 16 + (i 1).val) * 128 + (i 2).val) % 128 = ((i 0).val * 16 + (i 1).val) * 128 + (i 2).val; omega)

def val_main_v63 : (⟨S1024x16x128, .f32⟩ : BufTy).Contents (Elt F) :=
  broadcastInDim S1024x16x128 ![0, 1, 2] bcast_S1024x16x1_S1024x16x128_0_1_2 (val_main_v53 (F := F) x6)
abbrev idx_main_v63 (i : S1024x16x128.Idx) : S1024x16x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v63_apply (i : S1024x16x128.Idx) :
    val_main_v63 (F := F) x6 i = val_main_v53 (F := F) x6 (idx_main_v63 i) := by
  unfold val_main_v63
  generalize val_main_v53 (F := F) x6 = y
  exact broadcastInDim_apply _ bcast_S1024x16x1_S1024x16x128_0_1_2 y i (idx_main_v63 i) (fun a => match a with
    | ⟨0, _⟩ => by show (i 0).val = if (1024 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])

def val_main_v64 : (⟨S1024x16x128, .f32⟩ : BufTy).Contents (Elt F) :=
  mulf (val_main_v62 (F := F)) (val_main_v63 (F := F) x6)
theorem val_main_v64_apply (i : S1024x16x128.Idx) :
    val_main_v64 (F := F) x6 i = FloatOps.mulf (val_main_v62 (F := F) i) (val_main_v63 (F := F) x6 i) := rfl

def val_main_v65 : (⟨S16384x128, .f32⟩ : BufTy).Contents (Elt F) :=
  shapeCast _ (val_main_v64 (F := F) x6) shapeCasts_S1024x16x128_S16384x128
abbrev idx_main_v65 (i : S16384x128.Idx) : S1024x16x128.Idx := fun a => match a with
  | ⟨0, _⟩ => ⟨((i 0).val * 128 + (i 1).val) / 2048, by have h0 : (i 0).val < 16384 := (i 0).isLt; have h1 : (i 1).val < 128 := (i 1).isLt; show ((i 0).val * 128 + (i 1).val) / 2048 < 1024; omega⟩
  | ⟨1, _⟩ => ⟨((i 0).val * 128 + (i 1).val) / 128 % 16, by have h0 : (i 0).val < 16384 := (i 0).isLt; have h1 : (i 1).val < 128 := (i 1).isLt; show ((i 0).val * 128 + (i 1).val) / 128 % 16 < 16; omega⟩
  | ⟨2, _⟩ => ⟨((i 0).val * 128 + (i 1).val) % 128, by have h0 : (i 0).val < 16384 := (i 0).isLt; have h1 : (i 1).val < 128 := (i 1).isLt; show ((i 0).val * 128 + (i 1).val) % 128 < 128; omega⟩
theorem val_main_v65_apply (i : S16384x128.Idx) :
    val_main_v65 (F := F) x6 i = val_main_v64 (F := F) x6 (idx_main_v65 i) := by
  unfold val_main_v65
  generalize val_main_v64 (F := F) x6 = y
  exact shapeCast_apply y shapeCasts_S1024x16x128_S16384x128 i (idx_main_v65 i)
    (by rewrite [Shape.rowMajor_val_three, Shape.rowMajor_val_two]; have h0 : (i 0).val < 16384 := (i 0).isLt; have h1 : (i 1).val < 128 := (i 1).isLt; show (((i 0).val * 128 + (i 1).val) / 2048 * 16 + ((i 0).val * 128 + (i 1).val) / 128 % 16) * 128 + ((i 0).val * 128 + (i 1).val) % 128 = (i 0).val * 128 + (i 1).val; omega)

def val_main_v66 : (⟨S1024x16x1x128, .f32⟩ : BufTy).Contents (Elt F) :=
  extractStridedSlice S1024x16x1x128 ![0, 0, 0, 0] (val_main_v51 (F := F)) slices_S1024x16x2x128_S1024x16x1x128_0_0_0_0
abbrev idx_main_v66 (i : S1024x16x1x128.Idx) : S1024x16x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v66_apply (i : S1024x16x1x128.Idx) :
    val_main_v66 (F := F) i = val_main_v51 (F := F) (idx_main_v66 i) := by
  unfold val_main_v66
  generalize val_main_v51 (F := F) = y
  exact extractStridedSlice_apply ![0, 0, 0, 0] y slices_S1024x16x2x128_S1024x16x1x128_0_0_0_0 i (idx_main_v66 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v67 : (⟨S1024x16x128, .f32⟩ : BufTy).Contents (Elt F) :=
  shapeCast _ (val_main_v66 (F := F)) shapeCasts_S1024x16x1x128_S1024x16x128
abbrev idx_main_v67 (i : S1024x16x128.Idx) : S1024x16x1x128.Idx := fun a => match a with
  | ⟨0, _⟩ => ⟨(((i 0).val * 16 + (i 1).val) * 128 + (i 2).val) / 2048, by have h0 : (i 0).val < 1024 := (i 0).isLt; have h1 : (i 1).val < 16 := (i 1).isLt; have h2 : (i 2).val < 128 := (i 2).isLt; show (((i 0).val * 16 + (i 1).val) * 128 + (i 2).val) / 2048 < 1024; omega⟩
  | ⟨1, _⟩ => ⟨(((i 0).val * 16 + (i 1).val) * 128 + (i 2).val) / 128 % 16, by have h0 : (i 0).val < 1024 := (i 0).isLt; have h1 : (i 1).val < 16 := (i 1).isLt; have h2 : (i 2).val < 128 := (i 2).isLt; show (((i 0).val * 16 + (i 1).val) * 128 + (i 2).val) / 128 % 16 < 16; omega⟩
  | ⟨2, _⟩ => ⟨0, Nat.one_pos⟩
  | ⟨3, _⟩ => ⟨(((i 0).val * 16 + (i 1).val) * 128 + (i 2).val) % 128, by have h0 : (i 0).val < 1024 := (i 0).isLt; have h1 : (i 1).val < 16 := (i 1).isLt; have h2 : (i 2).val < 128 := (i 2).isLt; show (((i 0).val * 16 + (i 1).val) * 128 + (i 2).val) % 128 < 128; omega⟩
theorem val_main_v67_apply (i : S1024x16x128.Idx) :
    val_main_v67 (F := F) i = val_main_v66 (F := F) (idx_main_v67 i) := by
  unfold val_main_v67
  generalize val_main_v66 (F := F) = y
  exact shapeCast_apply y shapeCasts_S1024x16x1x128_S1024x16x128 i (idx_main_v67 i)
    (by rewrite [Shape.rowMajor_val_four, Shape.rowMajor_val_three]; have h0 : (i 0).val < 1024 := (i 0).isLt; have h1 : (i 1).val < 16 := (i 1).isLt; have h2 : (i 2).val < 128 := (i 2).isLt; show (((((i 0).val * 16 + (i 1).val) * 128 + (i 2).val) / 2048 * 16 + (((i 0).val * 16 + (i 1).val) * 128 + (i 2).val) / 128 % 16) * 1 + 0) * 128 + (((i 0).val * 16 + (i 1).val) * 128 + (i 2).val) % 128 = ((i 0).val * 16 + (i 1).val) * 128 + (i 2).val; omega)

def val_main_v68 : (⟨S1024x16x128, .f32⟩ : BufTy).Contents (Elt F) :=
  broadcastInDim S1024x16x128 ![0, 1, 2] bcast_S1024x16x1_S1024x16x128_0_1_2 (val_main_v53 (F := F) x6)
abbrev idx_main_v68 (i : S1024x16x128.Idx) : S1024x16x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v68_apply (i : S1024x16x128.Idx) :
    val_main_v68 (F := F) x6 i = val_main_v53 (F := F) x6 (idx_main_v68 i) := by
  unfold val_main_v68
  generalize val_main_v53 (F := F) x6 = y
  exact broadcastInDim_apply _ bcast_S1024x16x1_S1024x16x128_0_1_2 y i (idx_main_v68 i) (fun a => match a with
    | ⟨0, _⟩ => by show (i 0).val = if (1024 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])

def val_main_v69 : (⟨S1024x16x128, .f32⟩ : BufTy).Contents (Elt F) :=
  mulf (val_main_v67 (F := F)) (val_main_v68 (F := F) x6)
theorem val_main_v69_apply (i : S1024x16x128.Idx) :
    val_main_v69 (F := F) x6 i = FloatOps.mulf (val_main_v67 (F := F) i) (val_main_v68 (F := F) x6 i) := rfl

def val_main_v70 : (⟨S16384x128, .f32⟩ : BufTy).Contents (Elt F) :=
  shapeCast _ (val_main_v69 (F := F) x6) shapeCasts_S1024x16x128_S16384x128
abbrev idx_main_v70 (i : S16384x128.Idx) : S1024x16x128.Idx := fun a => match a with
  | ⟨0, _⟩ => ⟨((i 0).val * 128 + (i 1).val) / 2048, by have h0 : (i 0).val < 16384 := (i 0).isLt; have h1 : (i 1).val < 128 := (i 1).isLt; show ((i 0).val * 128 + (i 1).val) / 2048 < 1024; omega⟩
  | ⟨1, _⟩ => ⟨((i 0).val * 128 + (i 1).val) / 128 % 16, by have h0 : (i 0).val < 16384 := (i 0).isLt; have h1 : (i 1).val < 128 := (i 1).isLt; show ((i 0).val * 128 + (i 1).val) / 128 % 16 < 16; omega⟩
  | ⟨2, _⟩ => ⟨((i 0).val * 128 + (i 1).val) % 128, by have h0 : (i 0).val < 16384 := (i 0).isLt; have h1 : (i 1).val < 128 := (i 1).isLt; show ((i 0).val * 128 + (i 1).val) % 128 < 128; omega⟩
theorem val_main_v70_apply (i : S16384x128.Idx) :
    val_main_v70 (F := F) x6 i = val_main_v69 (F := F) x6 (idx_main_v70 i) := by
  unfold val_main_v70
  generalize val_main_v69 (F := F) x6 = y
  exact shapeCast_apply y shapeCasts_S1024x16x128_S16384x128 i (idx_main_v70 i)
    (by rewrite [Shape.rowMajor_val_three, Shape.rowMajor_val_two]; have h0 : (i 0).val < 16384 := (i 0).isLt; have h1 : (i 1).val < 128 := (i 1).isLt; show (((i 0).val * 128 + (i 1).val) / 2048 * 16 + ((i 0).val * 128 + (i 1).val) / 128 % 16) * 128 + ((i 0).val * 128 + (i 1).val) % 128 = (i 0).val * 128 + (i 1).val; omega)

def val_main_v71 : (⟨S1024x16x1x128, .f32⟩ : BufTy).Contents (Elt F) :=
  extractStridedSlice S1024x16x1x128 ![0, 0, 1, 0] (val_main_v49 (F := F) x0 x1 x2 x3 x4 x5 x8 x9 x10 x11 x12 x13 x14 x15 x16 x17 x18 x19 x20 x21) slices_S1024x16x2x128_S1024x16x1x128_0_0_1_0
abbrev idx_main_v71 (i : S1024x16x1x128.Idx) : S1024x16x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v71_apply (i : S1024x16x1x128.Idx) :
    val_main_v71 (F := F) x0 x1 x2 x3 x4 x5 x8 x9 x10 x11 x12 x13 x14 x15 x16 x17 x18 x19 x20 x21 i = val_main_v49 (F := F) x0 x1 x2 x3 x4 x5 x8 x9 x10 x11 x12 x13 x14 x15 x16 x17 x18 x19 x20 x21 (idx_main_v71 i) := by
  unfold val_main_v71
  generalize val_main_v49 (F := F) x0 x1 x2 x3 x4 x5 x8 x9 x10 x11 x12 x13 x14 x15 x16 x17 x18 x19 x20 x21 = y
  exact extractStridedSlice_apply ![0, 0, 1, 0] y slices_S1024x16x2x128_S1024x16x1x128_0_0_1_0 i (idx_main_v71 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v72 : (⟨S1024x16x128, .f32⟩ : BufTy).Contents (Elt F) :=
  shapeCast _ (val_main_v71 (F := F) x0 x1 x2 x3 x4 x5 x8 x9 x10 x11 x12 x13 x14 x15 x16 x17 x18 x19 x20 x21) shapeCasts_S1024x16x1x128_S1024x16x128
abbrev idx_main_v72 (i : S1024x16x128.Idx) : S1024x16x1x128.Idx := fun a => match a with
  | ⟨0, _⟩ => ⟨(((i 0).val * 16 + (i 1).val) * 128 + (i 2).val) / 2048, by have h0 : (i 0).val < 1024 := (i 0).isLt; have h1 : (i 1).val < 16 := (i 1).isLt; have h2 : (i 2).val < 128 := (i 2).isLt; show (((i 0).val * 16 + (i 1).val) * 128 + (i 2).val) / 2048 < 1024; omega⟩
  | ⟨1, _⟩ => ⟨(((i 0).val * 16 + (i 1).val) * 128 + (i 2).val) / 128 % 16, by have h0 : (i 0).val < 1024 := (i 0).isLt; have h1 : (i 1).val < 16 := (i 1).isLt; have h2 : (i 2).val < 128 := (i 2).isLt; show (((i 0).val * 16 + (i 1).val) * 128 + (i 2).val) / 128 % 16 < 16; omega⟩
  | ⟨2, _⟩ => ⟨0, Nat.one_pos⟩
  | ⟨3, _⟩ => ⟨(((i 0).val * 16 + (i 1).val) * 128 + (i 2).val) % 128, by have h0 : (i 0).val < 1024 := (i 0).isLt; have h1 : (i 1).val < 16 := (i 1).isLt; have h2 : (i 2).val < 128 := (i 2).isLt; show (((i 0).val * 16 + (i 1).val) * 128 + (i 2).val) % 128 < 128; omega⟩
theorem val_main_v72_apply (i : S1024x16x128.Idx) :
    val_main_v72 (F := F) x0 x1 x2 x3 x4 x5 x8 x9 x10 x11 x12 x13 x14 x15 x16 x17 x18 x19 x20 x21 i = val_main_v71 (F := F) x0 x1 x2 x3 x4 x5 x8 x9 x10 x11 x12 x13 x14 x15 x16 x17 x18 x19 x20 x21 (idx_main_v72 i) := by
  unfold val_main_v72
  generalize val_main_v71 (F := F) x0 x1 x2 x3 x4 x5 x8 x9 x10 x11 x12 x13 x14 x15 x16 x17 x18 x19 x20 x21 = y
  exact shapeCast_apply y shapeCasts_S1024x16x1x128_S1024x16x128 i (idx_main_v72 i)
    (by rewrite [Shape.rowMajor_val_four, Shape.rowMajor_val_three]; have h0 : (i 0).val < 1024 := (i 0).isLt; have h1 : (i 1).val < 16 := (i 1).isLt; have h2 : (i 2).val < 128 := (i 2).isLt; show (((((i 0).val * 16 + (i 1).val) * 128 + (i 2).val) / 2048 * 16 + (((i 0).val * 16 + (i 1).val) * 128 + (i 2).val) / 128 % 16) * 1 + 0) * 128 + (((i 0).val * 16 + (i 1).val) * 128 + (i 2).val) % 128 = ((i 0).val * 16 + (i 1).val) * 128 + (i 2).val; omega)

def val_main_v73 : (⟨S1024x16x128, .f32⟩ : BufTy).Contents (Elt F) :=
  broadcastInDim S1024x16x128 ![0, 1, 2] bcast_S1024x16x1_S1024x16x128_0_1_2 (val_main_v55 (F := F) x7)
abbrev idx_main_v73 (i : S1024x16x128.Idx) : S1024x16x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v73_apply (i : S1024x16x128.Idx) :
    val_main_v73 (F := F) x7 i = val_main_v55 (F := F) x7 (idx_main_v73 i) := by
  unfold val_main_v73
  generalize val_main_v55 (F := F) x7 = y
  exact broadcastInDim_apply _ bcast_S1024x16x1_S1024x16x128_0_1_2 y i (idx_main_v73 i) (fun a => match a with
    | ⟨0, _⟩ => by show (i 0).val = if (1024 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])

def val_main_v74 : (⟨S1024x16x128, .f32⟩ : BufTy).Contents (Elt F) :=
  mulf (val_main_v72 (F := F) x0 x1 x2 x3 x4 x5 x8 x9 x10 x11 x12 x13 x14 x15 x16 x17 x18 x19 x20 x21) (val_main_v73 (F := F) x7)
theorem val_main_v74_apply (i : S1024x16x128.Idx) :
    val_main_v74 (F := F) x0 x1 x2 x3 x4 x5 x7 x8 x9 x10 x11 x12 x13 x14 x15 x16 x17 x18 x19 x20 x21 i = FloatOps.mulf (val_main_v72 (F := F) x0 x1 x2 x3 x4 x5 x8 x9 x10 x11 x12 x13 x14 x15 x16 x17 x18 x19 x20 x21 i) (val_main_v73 (F := F) x7 i) := rfl

def val_main_v75 : (⟨S16384x128, .f32⟩ : BufTy).Contents (Elt F) :=
  shapeCast _ (val_main_v74 (F := F) x0 x1 x2 x3 x4 x5 x7 x8 x9 x10 x11 x12 x13 x14 x15 x16 x17 x18 x19 x20 x21) shapeCasts_S1024x16x128_S16384x128
abbrev idx_main_v75 (i : S16384x128.Idx) : S1024x16x128.Idx := fun a => match a with
  | ⟨0, _⟩ => ⟨((i 0).val * 128 + (i 1).val) / 2048, by have h0 : (i 0).val < 16384 := (i 0).isLt; have h1 : (i 1).val < 128 := (i 1).isLt; show ((i 0).val * 128 + (i 1).val) / 2048 < 1024; omega⟩
  | ⟨1, _⟩ => ⟨((i 0).val * 128 + (i 1).val) / 128 % 16, by have h0 : (i 0).val < 16384 := (i 0).isLt; have h1 : (i 1).val < 128 := (i 1).isLt; show ((i 0).val * 128 + (i 1).val) / 128 % 16 < 16; omega⟩
  | ⟨2, _⟩ => ⟨((i 0).val * 128 + (i 1).val) % 128, by have h0 : (i 0).val < 16384 := (i 0).isLt; have h1 : (i 1).val < 128 := (i 1).isLt; show ((i 0).val * 128 + (i 1).val) % 128 < 128; omega⟩
theorem val_main_v75_apply (i : S16384x128.Idx) :
    val_main_v75 (F := F) x0 x1 x2 x3 x4 x5 x7 x8 x9 x10 x11 x12 x13 x14 x15 x16 x17 x18 x19 x20 x21 i = val_main_v74 (F := F) x0 x1 x2 x3 x4 x5 x7 x8 x9 x10 x11 x12 x13 x14 x15 x16 x17 x18 x19 x20 x21 (idx_main_v75 i) := by
  unfold val_main_v75
  generalize val_main_v74 (F := F) x0 x1 x2 x3 x4 x5 x7 x8 x9 x10 x11 x12 x13 x14 x15 x16 x17 x18 x19 x20 x21 = y
  exact shapeCast_apply y shapeCasts_S1024x16x128_S16384x128 i (idx_main_v75 i)
    (by rewrite [Shape.rowMajor_val_three, Shape.rowMajor_val_two]; have h0 : (i 0).val < 16384 := (i 0).isLt; have h1 : (i 1).val < 128 := (i 1).isLt; show (((i 0).val * 128 + (i 1).val) / 2048 * 16 + ((i 0).val * 128 + (i 1).val) / 128 % 16) * 128 + ((i 0).val * 128 + (i 1).val) % 128 = (i 0).val * 128 + (i 1).val; omega)

def val_main_v76 : (⟨S1024x16x1x128, .f32⟩ : BufTy).Contents (Elt F) :=
  extractStridedSlice S1024x16x1x128 ![0, 0, 1, 0] (val_main_v50 (F := F)) slices_S1024x16x2x128_S1024x16x1x128_0_0_1_0
abbrev idx_main_v76 (i : S1024x16x1x128.Idx) : S1024x16x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v76_apply (i : S1024x16x1x128.Idx) :
    val_main_v76 (F := F) i = val_main_v50 (F := F) (idx_main_v76 i) := by
  unfold val_main_v76
  generalize val_main_v50 (F := F) = y
  exact extractStridedSlice_apply ![0, 0, 1, 0] y slices_S1024x16x2x128_S1024x16x1x128_0_0_1_0 i (idx_main_v76 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v77 : (⟨S1024x16x128, .f32⟩ : BufTy).Contents (Elt F) :=
  shapeCast _ (val_main_v76 (F := F)) shapeCasts_S1024x16x1x128_S1024x16x128
abbrev idx_main_v77 (i : S1024x16x128.Idx) : S1024x16x1x128.Idx := fun a => match a with
  | ⟨0, _⟩ => ⟨(((i 0).val * 16 + (i 1).val) * 128 + (i 2).val) / 2048, by have h0 : (i 0).val < 1024 := (i 0).isLt; have h1 : (i 1).val < 16 := (i 1).isLt; have h2 : (i 2).val < 128 := (i 2).isLt; show (((i 0).val * 16 + (i 1).val) * 128 + (i 2).val) / 2048 < 1024; omega⟩
  | ⟨1, _⟩ => ⟨(((i 0).val * 16 + (i 1).val) * 128 + (i 2).val) / 128 % 16, by have h0 : (i 0).val < 1024 := (i 0).isLt; have h1 : (i 1).val < 16 := (i 1).isLt; have h2 : (i 2).val < 128 := (i 2).isLt; show (((i 0).val * 16 + (i 1).val) * 128 + (i 2).val) / 128 % 16 < 16; omega⟩
  | ⟨2, _⟩ => ⟨0, Nat.one_pos⟩
  | ⟨3, _⟩ => ⟨(((i 0).val * 16 + (i 1).val) * 128 + (i 2).val) % 128, by have h0 : (i 0).val < 1024 := (i 0).isLt; have h1 : (i 1).val < 16 := (i 1).isLt; have h2 : (i 2).val < 128 := (i 2).isLt; show (((i 0).val * 16 + (i 1).val) * 128 + (i 2).val) % 128 < 128; omega⟩
theorem val_main_v77_apply (i : S1024x16x128.Idx) :
    val_main_v77 (F := F) i = val_main_v76 (F := F) (idx_main_v77 i) := by
  unfold val_main_v77
  generalize val_main_v76 (F := F) = y
  exact shapeCast_apply y shapeCasts_S1024x16x1x128_S1024x16x128 i (idx_main_v77 i)
    (by rewrite [Shape.rowMajor_val_four, Shape.rowMajor_val_three]; have h0 : (i 0).val < 1024 := (i 0).isLt; have h1 : (i 1).val < 16 := (i 1).isLt; have h2 : (i 2).val < 128 := (i 2).isLt; show (((((i 0).val * 16 + (i 1).val) * 128 + (i 2).val) / 2048 * 16 + (((i 0).val * 16 + (i 1).val) * 128 + (i 2).val) / 128 % 16) * 1 + 0) * 128 + (((i 0).val * 16 + (i 1).val) * 128 + (i 2).val) % 128 = ((i 0).val * 16 + (i 1).val) * 128 + (i 2).val; omega)

def val_main_v78 : (⟨S1024x16x128, .f32⟩ : BufTy).Contents (Elt F) :=
  broadcastInDim S1024x16x128 ![0, 1, 2] bcast_S1024x16x1_S1024x16x128_0_1_2 (val_main_v55 (F := F) x7)
abbrev idx_main_v78 (i : S1024x16x128.Idx) : S1024x16x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v78_apply (i : S1024x16x128.Idx) :
    val_main_v78 (F := F) x7 i = val_main_v55 (F := F) x7 (idx_main_v78 i) := by
  unfold val_main_v78
  generalize val_main_v55 (F := F) x7 = y
  exact broadcastInDim_apply _ bcast_S1024x16x1_S1024x16x128_0_1_2 y i (idx_main_v78 i) (fun a => match a with
    | ⟨0, _⟩ => by show (i 0).val = if (1024 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])

def val_main_v79 : (⟨S1024x16x128, .f32⟩ : BufTy).Contents (Elt F) :=
  mulf (val_main_v77 (F := F)) (val_main_v78 (F := F) x7)
theorem val_main_v79_apply (i : S1024x16x128.Idx) :
    val_main_v79 (F := F) x7 i = FloatOps.mulf (val_main_v77 (F := F) i) (val_main_v78 (F := F) x7 i) := rfl

def val_main_v80 : (⟨S16384x128, .f32⟩ : BufTy).Contents (Elt F) :=
  shapeCast _ (val_main_v79 (F := F) x7) shapeCasts_S1024x16x128_S16384x128
abbrev idx_main_v80 (i : S16384x128.Idx) : S1024x16x128.Idx := fun a => match a with
  | ⟨0, _⟩ => ⟨((i 0).val * 128 + (i 1).val) / 2048, by have h0 : (i 0).val < 16384 := (i 0).isLt; have h1 : (i 1).val < 128 := (i 1).isLt; show ((i 0).val * 128 + (i 1).val) / 2048 < 1024; omega⟩
  | ⟨1, _⟩ => ⟨((i 0).val * 128 + (i 1).val) / 128 % 16, by have h0 : (i 0).val < 16384 := (i 0).isLt; have h1 : (i 1).val < 128 := (i 1).isLt; show ((i 0).val * 128 + (i 1).val) / 128 % 16 < 16; omega⟩
  | ⟨2, _⟩ => ⟨((i 0).val * 128 + (i 1).val) % 128, by have h0 : (i 0).val < 16384 := (i 0).isLt; have h1 : (i 1).val < 128 := (i 1).isLt; show ((i 0).val * 128 + (i 1).val) % 128 < 128; omega⟩
theorem val_main_v80_apply (i : S16384x128.Idx) :
    val_main_v80 (F := F) x7 i = val_main_v79 (F := F) x7 (idx_main_v80 i) := by
  unfold val_main_v80
  generalize val_main_v79 (F := F) x7 = y
  exact shapeCast_apply y shapeCasts_S1024x16x128_S16384x128 i (idx_main_v80 i)
    (by rewrite [Shape.rowMajor_val_three, Shape.rowMajor_val_two]; have h0 : (i 0).val < 16384 := (i 0).isLt; have h1 : (i 1).val < 128 := (i 1).isLt; show (((i 0).val * 128 + (i 1).val) / 2048 * 16 + ((i 0).val * 128 + (i 1).val) / 128 % 16) * 128 + ((i 0).val * 128 + (i 1).val) % 128 = (i 0).val * 128 + (i 1).val; omega)

def val_main_v81 : (⟨S1024x16x1x128, .f32⟩ : BufTy).Contents (Elt F) :=
  extractStridedSlice S1024x16x1x128 ![0, 0, 1, 0] (val_main_v51 (F := F)) slices_S1024x16x2x128_S1024x16x1x128_0_0_1_0
abbrev idx_main_v81 (i : S1024x16x1x128.Idx) : S1024x16x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v81_apply (i : S1024x16x1x128.Idx) :
    val_main_v81 (F := F) i = val_main_v51 (F := F) (idx_main_v81 i) := by
  unfold val_main_v81
  generalize val_main_v51 (F := F) = y
  exact extractStridedSlice_apply ![0, 0, 1, 0] y slices_S1024x16x2x128_S1024x16x1x128_0_0_1_0 i (idx_main_v81 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v82 : (⟨S1024x16x128, .f32⟩ : BufTy).Contents (Elt F) :=
  shapeCast _ (val_main_v81 (F := F)) shapeCasts_S1024x16x1x128_S1024x16x128
abbrev idx_main_v82 (i : S1024x16x128.Idx) : S1024x16x1x128.Idx := fun a => match a with
  | ⟨0, _⟩ => ⟨(((i 0).val * 16 + (i 1).val) * 128 + (i 2).val) / 2048, by have h0 : (i 0).val < 1024 := (i 0).isLt; have h1 : (i 1).val < 16 := (i 1).isLt; have h2 : (i 2).val < 128 := (i 2).isLt; show (((i 0).val * 16 + (i 1).val) * 128 + (i 2).val) / 2048 < 1024; omega⟩
  | ⟨1, _⟩ => ⟨(((i 0).val * 16 + (i 1).val) * 128 + (i 2).val) / 128 % 16, by have h0 : (i 0).val < 1024 := (i 0).isLt; have h1 : (i 1).val < 16 := (i 1).isLt; have h2 : (i 2).val < 128 := (i 2).isLt; show (((i 0).val * 16 + (i 1).val) * 128 + (i 2).val) / 128 % 16 < 16; omega⟩
  | ⟨2, _⟩ => ⟨0, Nat.one_pos⟩
  | ⟨3, _⟩ => ⟨(((i 0).val * 16 + (i 1).val) * 128 + (i 2).val) % 128, by have h0 : (i 0).val < 1024 := (i 0).isLt; have h1 : (i 1).val < 16 := (i 1).isLt; have h2 : (i 2).val < 128 := (i 2).isLt; show (((i 0).val * 16 + (i 1).val) * 128 + (i 2).val) % 128 < 128; omega⟩
theorem val_main_v82_apply (i : S1024x16x128.Idx) :
    val_main_v82 (F := F) i = val_main_v81 (F := F) (idx_main_v82 i) := by
  unfold val_main_v82
  generalize val_main_v81 (F := F) = y
  exact shapeCast_apply y shapeCasts_S1024x16x1x128_S1024x16x128 i (idx_main_v82 i)
    (by rewrite [Shape.rowMajor_val_four, Shape.rowMajor_val_three]; have h0 : (i 0).val < 1024 := (i 0).isLt; have h1 : (i 1).val < 16 := (i 1).isLt; have h2 : (i 2).val < 128 := (i 2).isLt; show (((((i 0).val * 16 + (i 1).val) * 128 + (i 2).val) / 2048 * 16 + (((i 0).val * 16 + (i 1).val) * 128 + (i 2).val) / 128 % 16) * 1 + 0) * 128 + (((i 0).val * 16 + (i 1).val) * 128 + (i 2).val) % 128 = ((i 0).val * 16 + (i 1).val) * 128 + (i 2).val; omega)

def val_main_v83 : (⟨S1024x16x128, .f32⟩ : BufTy).Contents (Elt F) :=
  broadcastInDim S1024x16x128 ![0, 1, 2] bcast_S1024x16x1_S1024x16x128_0_1_2 (val_main_v55 (F := F) x7)
abbrev idx_main_v83 (i : S1024x16x128.Idx) : S1024x16x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v83_apply (i : S1024x16x128.Idx) :
    val_main_v83 (F := F) x7 i = val_main_v55 (F := F) x7 (idx_main_v83 i) := by
  unfold val_main_v83
  generalize val_main_v55 (F := F) x7 = y
  exact broadcastInDim_apply _ bcast_S1024x16x1_S1024x16x128_0_1_2 y i (idx_main_v83 i) (fun a => match a with
    | ⟨0, _⟩ => by show (i 0).val = if (1024 : Nat) = 1 then 0 else (i 0).val; rw [if_neg (by decide)]
    | ⟨1, _⟩ => by show (i 1).val = if (16 : Nat) = 1 then 0 else (i 1).val; rw [if_neg (by decide)]
    | ⟨2, _⟩ => by show 0 = if (1 : Nat) = 1 then 0 else (i 2).val; rw [if_pos rfl])

def val_main_v84 : (⟨S1024x16x128, .f32⟩ : BufTy).Contents (Elt F) :=
  mulf (val_main_v82 (F := F)) (val_main_v83 (F := F) x7)
theorem val_main_v84_apply (i : S1024x16x128.Idx) :
    val_main_v84 (F := F) x7 i = FloatOps.mulf (val_main_v82 (F := F) i) (val_main_v83 (F := F) x7 i) := rfl

def val_main_v85 : (⟨S16384x128, .f32⟩ : BufTy).Contents (Elt F) :=
  shapeCast _ (val_main_v84 (F := F) x7) shapeCasts_S1024x16x128_S16384x128
abbrev idx_main_v85 (i : S16384x128.Idx) : S1024x16x128.Idx := fun a => match a with
  | ⟨0, _⟩ => ⟨((i 0).val * 128 + (i 1).val) / 2048, by have h0 : (i 0).val < 16384 := (i 0).isLt; have h1 : (i 1).val < 128 := (i 1).isLt; show ((i 0).val * 128 + (i 1).val) / 2048 < 1024; omega⟩
  | ⟨1, _⟩ => ⟨((i 0).val * 128 + (i 1).val) / 128 % 16, by have h0 : (i 0).val < 16384 := (i 0).isLt; have h1 : (i 1).val < 128 := (i 1).isLt; show ((i 0).val * 128 + (i 1).val) / 128 % 16 < 16; omega⟩
  | ⟨2, _⟩ => ⟨((i 0).val * 128 + (i 1).val) % 128, by have h0 : (i 0).val < 16384 := (i 0).isLt; have h1 : (i 1).val < 128 := (i 1).isLt; show ((i 0).val * 128 + (i 1).val) % 128 < 128; omega⟩
theorem val_main_v85_apply (i : S16384x128.Idx) :
    val_main_v85 (F := F) x7 i = val_main_v84 (F := F) x7 (idx_main_v85 i) := by
  unfold val_main_v85
  generalize val_main_v84 (F := F) x7 = y
  exact shapeCast_apply y shapeCasts_S1024x16x128_S16384x128 i (idx_main_v85 i)
    (by rewrite [Shape.rowMajor_val_three, Shape.rowMajor_val_two]; have h0 : (i 0).val < 16384 := (i 0).isLt; have h1 : (i 1).val < 128 := (i 1).isLt; show (((i 0).val * 128 + (i 1).val) / 2048 * 16 + ((i 0).val * 128 + (i 1).val) / 128 % 16) * 128 + ((i 0).val * 128 + (i 1).val) % 128 = (i 0).val * 128 + (i 1).val; omega)

def val_main_v86 : (⟨S16384x128, .f32⟩ : BufTy).Contents (Elt F) :=
  extractStridedSlice S16384x128 ![15360, 0] (val_main_v3 (F := F) x0 x8 x9) slices_S64512x128_S16384x128_15360_0
abbrev idx_main_v86 (i : S16384x128.Idx) : S64512x128.Idx := fun a => match a with
  | ⟨0, _⟩ => ⟨15360 + (i 0).val, by have h0 : (i 0).val < 16384 := (i 0).isLt; show 15360 + (i 0).val < 64512; omega⟩
  | ⟨1, _⟩ => ⟨(i 1).val, (i 1).isLt⟩
theorem val_main_v86_apply (i : S16384x128.Idx) :
    val_main_v86 (F := F) x0 x8 x9 i = val_main_v3 (F := F) x0 x8 x9 (idx_main_v86 i) := by
  unfold val_main_v86
  generalize val_main_v3 (F := F) x0 x8 x9 = y
  exact extractStridedSlice_apply ![15360, 0] y slices_S64512x128_S16384x128_15360_0 i (idx_main_v86 i) (fun a => match a with
    | ⟨0, _⟩ => by show 15360 + (i 0).val = 15360 + (i 0).val; omega
    | ⟨1, _⟩ => by show (i 1).val = 0 + (i 1).val; omega)

def val_main_v87 : (⟨S16384x128, .f32⟩ : BufTy).Contents (Elt F) :=
  extractStridedSlice S16384x128 ![15360, 0] (val_main_v7 (F := F) x1 x10 x11) slices_S64512x128_S16384x128_15360_0
abbrev idx_main_v87 (i : S16384x128.Idx) : S64512x128.Idx := fun a => match a with
  | ⟨0, _⟩ => ⟨15360 + (i 0).val, by have h0 : (i 0).val < 16384 := (i 0).isLt; show 15360 + (i 0).val < 64512; omega⟩
  | ⟨1, _⟩ => ⟨(i 1).val, (i 1).isLt⟩
theorem val_main_v87_apply (i : S16384x128.Idx) :
    val_main_v87 (F := F) x1 x10 x11 i = val_main_v7 (F := F) x1 x10 x11 (idx_main_v87 i) := by
  unfold val_main_v87
  generalize val_main_v7 (F := F) x1 x10 x11 = y
  exact extractStridedSlice_apply ![15360, 0] y slices_S64512x128_S16384x128_15360_0 i (idx_main_v87 i) (fun a => match a with
    | ⟨0, _⟩ => by show 15360 + (i 0).val = 15360 + (i 0).val; omega
    | ⟨1, _⟩ => by show (i 1).val = 0 + (i 1).val; omega)

def val_main_v88 : (⟨S16384x128, .f32⟩ : BufTy).Contents (Elt F) :=
  extractStridedSlice S16384x128 ![15360, 0] (val_main_v19 (F := F) x3 x14 x15) slices_S64512x128_S16384x128_15360_0
abbrev idx_main_v88 (i : S16384x128.Idx) : S64512x128.Idx := fun a => match a with
  | ⟨0, _⟩ => ⟨15360 + (i 0).val, by have h0 : (i 0).val < 16384 := (i 0).isLt; show 15360 + (i 0).val < 64512; omega⟩
  | ⟨1, _⟩ => ⟨(i 1).val, (i 1).isLt⟩
theorem val_main_v88_apply (i : S16384x128.Idx) :
    val_main_v88 (F := F) x3 x14 x15 i = val_main_v19 (F := F) x3 x14 x15 (idx_main_v88 i) := by
  unfold val_main_v88
  generalize val_main_v19 (F := F) x3 x14 x15 = y
  exact extractStridedSlice_apply ![15360, 0] y slices_S64512x128_S16384x128_15360_0 i (idx_main_v88 i) (fun a => match a with
    | ⟨0, _⟩ => by show 15360 + (i 0).val = 15360 + (i 0).val; omega
    | ⟨1, _⟩ => by show (i 1).val = 0 + (i 1).val; omega)

def val_main_v89 : (⟨S16384x128, .f32⟩ : BufTy).Contents (Elt F) :=
  extractStridedSlice S16384x128 ![15360, 0] (val_main_v24 (F := F) x4 x14 x15) slices_S64512x128_S16384x128_15360_0
abbrev idx_main_v89 (i : S16384x128.Idx) : S64512x128.Idx := fun a => match a with
  | ⟨0, _⟩ => ⟨15360 + (i 0).val, by have h0 : (i 0).val < 16384 := (i 0).isLt; show 15360 + (i 0).val < 64512; omega⟩
  | ⟨1, _⟩ => ⟨(i 1).val, (i 1).isLt⟩
theorem val_main_v89_apply (i : S16384x128.Idx) :
    val_main_v89 (F := F) x4 x14 x15 i = val_main_v24 (F := F) x4 x14 x15 (idx_main_v89 i) := by
  unfold val_main_v89
  generalize val_main_v24 (F := F) x4 x14 x15 = y
  exact extractStridedSlice_apply ![15360, 0] y slices_S64512x128_S16384x128_15360_0 i (idx_main_v89 i) (fun a => match a with
    | ⟨0, _⟩ => by show 15360 + (i 0).val = 15360 + (i 0).val; omega
    | ⟨1, _⟩ => by show (i 1).val = 0 + (i 1).val; omega)

def val_main_v90 : (⟨S16384x128, .f32⟩ : BufTy).Contents (Elt F) :=
  extractStridedSlice S16384x128 ![15360, 0] (val_main_v14 (F := F) x2 x5 x12 x13) slices_S64512x128_S16384x128_15360_0
abbrev idx_main_v90 (i : S16384x128.Idx) : S64512x128.Idx := fun a => match a with
  | ⟨0, _⟩ => ⟨15360 + (i 0).val, by have h0 : (i 0).val < 16384 := (i 0).isLt; show 15360 + (i 0).val < 64512; omega⟩
  | ⟨1, _⟩ => ⟨(i 1).val, (i 1).isLt⟩
theorem val_main_v90_apply (i : S16384x128.Idx) :
    val_main_v90 (F := F) x2 x5 x12 x13 i = val_main_v14 (F := F) x2 x5 x12 x13 (idx_main_v90 i) := by
  unfold val_main_v90
  generalize val_main_v14 (F := F) x2 x5 x12 x13 = y
  exact extractStridedSlice_apply ![15360, 0] y slices_S64512x128_S16384x128_15360_0 i (idx_main_v90 i) (fun a => match a with
    | ⟨0, _⟩ => by show 15360 + (i 0).val = 15360 + (i 0).val; omega
    | ⟨1, _⟩ => by show (i 1).val = 0 + (i 1).val; omega)

def val_main_v91 : (⟨S16384x1408, .f32⟩ : BufTy).Contents (Elt F) :=
  concatenate S16384x1408 1 [⟨S16384x128, (val_main_v86 (F := F) x0 x8 x9)⟩, ⟨S16384x128, (val_main_v87 (F := F) x1 x10 x11)⟩, ⟨S16384x128, (val_main_v88 (F := F) x3 x14 x15)⟩, ⟨S16384x128, (val_main_v89 (F := F) x4 x14 x15)⟩, ⟨S16384x128, (val_main_v90 (F := F) x2 x5 x12 x13)⟩, ⟨S16384x128, (val_main_v60 (F := F) x0 x1 x2 x3 x4 x5 x6 x8 x9 x10 x11 x12 x13 x14 x15 x16 x17 x18 x19 x20 x21)⟩, ⟨S16384x128, (val_main_v75 (F := F) x0 x1 x2 x3 x4 x5 x7 x8 x9 x10 x11 x12 x13 x14 x15 x16 x17 x18 x19 x20 x21)⟩, ⟨S16384x128, (val_main_v65 (F := F) x6)⟩, ⟨S16384x128, (val_main_v70 (F := F) x6)⟩, ⟨S16384x128, (val_main_v80 (F := F) x7)⟩, ⟨S16384x128, (val_main_v85 (F := F) x7)⟩] concatenates_S16384x128_S16384x128_S16384x128_S16384x128_S16384x128_S16384x128_S16384x128_S16384x128_S16384x128_S16384x128_S16384x128_S16384x1408_d1

def val_main_v92 : (⟨S16384x512, .f32⟩ : BufTy).Contents (Elt F) :=
  Host.dotGeneral dot_S16384x1408_S1408x512_S16384x512_1_0_0_1_n_n none (val_main_v91 (F := F) x0 x1 x2 x3 x4 x5 x6 x7 x8 x9 x10 x11 x12 x13 x14 x15 x16 x17 x18 x19 x20 x21) (x16)
theorem lhs_main_v92_0 (i : S16384x512.Idx) (q : dot_S16384x1408_S1408x512_S16384x512_1_0_0_1_n_n.contr.Idx) :
    (dot_S16384x1408_S1408x512_S16384x512_1_0_0_1_n_n.lhsIdx i q 0).val = (i 0).val := by
  unfold DotDims.lhsIdx
  rw [dif_neg (show ¬(0 : Fin S16384x1408.rank) ∈ dot_S16384x1408_S1408x512_S16384x512_1_0_0_1_n_n.lhsBatch by decide), dif_pos (show (0 : Fin S16384x1408.rank) ∈ dot_S16384x1408_S1408x512_S16384x512_1_0_0_1_n_n.lhsNonContracting by decide)]
  rfl
theorem lhs_main_v92_1 (i : S16384x512.Idx) (q : dot_S16384x1408_S1408x512_S16384x512_1_0_0_1_n_n.contr.Idx) :
    (dot_S16384x1408_S1408x512_S16384x512_1_0_0_1_n_n.lhsIdx i q 1).val = (q ⟨0, by decide⟩).val :=
  dot_S16384x1408_S1408x512_S16384x512_1_0_0_1_n_n.lhsIdx_val_of_single rfl i q
theorem rhs_main_v92_0 (i : S16384x512.Idx) (q : dot_S16384x1408_S1408x512_S16384x512_1_0_0_1_n_n.contr.Idx) :
    (dot_S16384x1408_S1408x512_S16384x512_1_0_0_1_n_n.rhsIdx i q 0).val = (q ⟨0, by decide⟩).val :=
  dot_S16384x1408_S1408x512_S16384x512_1_0_0_1_n_n.rhsIdx_val_of_single rfl i q
theorem rhs_main_v92_1 (i : S16384x512.Idx) (q : dot_S16384x1408_S1408x512_S16384x512_1_0_0_1_n_n.contr.Idx) :
    (dot_S16384x1408_S1408x512_S16384x512_1_0_0_1_n_n.rhsIdx i q 1).val = (i 1).val := by
  unfold DotDims.rhsIdx
  rw [dif_neg (show ¬(1 : Fin S1408x512.rank) ∈ dot_S16384x1408_S1408x512_S16384x512_1_0_0_1_n_n.rhsBatch by decide), dif_pos (show (1 : Fin S1408x512.rank) ∈ dot_S16384x1408_S1408x512_S16384x512_1_0_0_1_n_n.rhsNonContracting by decide)]
  rfl
abbrev lidx_main_v92 (i : S16384x512.Idx) (k : Fin 1408) : S16384x1408.Idx := fun a => match a with
  | ⟨0, _⟩ => ⟨(i 0).val, (i 0).isLt⟩
  | ⟨1, _⟩ => ⟨k.val, k.isLt⟩
abbrev ridx_main_v92 (i : S16384x512.Idx) (k : Fin 1408) : S1408x512.Idx := fun a => match a with
  | ⟨0, _⟩ => ⟨k.val, k.isLt⟩
  | ⟨1, _⟩ => ⟨(i 1).val, (i 1).isLt⟩

theorem val_main_v92_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S16384x512.Idx) :
    val_main_v92 (F := Ideal) x0 x1 x2 x3 x4 x5 x6 x7 x8 x9 x10 x11 x12 x13 x14 x15 x16 x17 x18 x19 x20 x21 i = ∑ k : Fin 1408, (val_main_v91 (F := Ideal) x0 x1 x2 x3 x4 x5 x6 x7 x8 x9 x10 x11 x12 x13 x14 x15 x16 x17 x18 x19 x20 x21) (lidx_main_v92 i k) * x16 (ridx_main_v92 i k) := by
  unfold val_main_v92
  generalize val_main_v91 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S16384x1408_S1408x512_S16384x512_1_0_0_1_n_n 1408 rfl rfl).symm]
  refine Finset.sum_congr rfl fun k _ => ?_
  have hk := ValueIdx.contrEquiv1_symm_val dot_S16384x1408_S1408x512_S16384x512_1_0_0_1_n_n 1408 rfl rfl k
  have el : dot_S16384x1408_S1408x512_S16384x512_1_0_0_1_n_n.lhsIdx i ((ValueIdx.contrEquiv1 dot_S16384x1408_S1408x512_S16384x512_1_0_0_1_n_n 1408 rfl rfl).symm k) = lidx_main_v92 i k := funext fun a => Fin.ext (by
    match a with
    | ⟨0, _⟩ => exact lhs_main_v92_0 _ _
    | ⟨1, _⟩ => exact (lhs_main_v92_1 _ _).trans hk)
  have er : dot_S16384x1408_S1408x512_S16384x512_1_0_0_1_n_n.rhsIdx i ((ValueIdx.contrEquiv1 dot_S16384x1408_S1408x512_S16384x512_1_0_0_1_n_n 1408 rfl rfl).symm k) = ridx_main_v92 i k := funext fun a => Fin.ext (by
    match a with
    | ⟨0, _⟩ => exact (rhs_main_v92_0 _ _).trans hk
    | ⟨1, _⟩ => exact rhs_main_v92_1 _ _)
  rw [el, er]

def val_main_v93 : (⟨S1x512, .f32⟩ : BufTy).Contents (Elt F) :=
  broadcastInDim S1x512 ![1] bcast_S512_S1x512_1 (x17)
abbrev idx_main_v93 (i : S1x512.Idx) : S512.Idx := fun a => match a with
  | ⟨0, _⟩ => ⟨(i 1).val, (i 1).isLt⟩
theorem val_main_v93_apply (i : S1x512.Idx) :
    val_main_v93 (F := F) x17 i = x17 (idx_main_v93 i) := by
  unfold val_main_v93
  exact broadcastInDim_apply _ bcast_S512_S1x512_1 x17 i (idx_main_v93 i) (fun a => match a with
    | ⟨0, _⟩ => by show (i 1).val = if (512 : Nat) = 1 then 0 else (i 1).val; rw [if_neg (by decide)])

def val_main_v94 : (⟨S16384x512, .f32⟩ : BufTy).Contents (Elt F) :=
  broadcastInDim S16384x512 ![0, 1] bcast_S1x512_S16384x512_0_1 (val_main_v93 (F := F) x17)
abbrev idx_main_v94 (i : S16384x512.Idx) : S1x512.Idx := fun a => match a with
  | ⟨0, _⟩ => ⟨0, Nat.one_pos⟩
  | ⟨1, _⟩ => ⟨(i 1).val, (i 1).isLt⟩
theorem val_main_v94_apply (i : S16384x512.Idx) :
    val_main_v94 (F := F) x17 i = val_main_v93 (F := F) x17 (idx_main_v94 i) := by
  unfold val_main_v94
  generalize val_main_v93 (F := F) x17 = y
  exact broadcastInDim_apply _ bcast_S1x512_S16384x512_0_1 y i (idx_main_v94 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v95 : (⟨S16384x512, .f32⟩ : BufTy).Contents (Elt F) :=
  addf (val_main_v92 (F := F) x0 x1 x2 x3 x4 x5 x6 x7 x8 x9 x10 x11 x12 x13 x14 x15 x16 x17 x18 x19 x20 x21) (val_main_v94 (F := F) x17)
theorem val_main_v95_apply (i : S16384x512.Idx) :
    val_main_v95 (F := F) x0 x1 x2 x3 x4 x5 x6 x7 x8 x9 x10 x11 x12 x13 x14 x15 x16 x17 x18 x19 x20 x21 i = FloatOps.addf (val_main_v92 (F := F) x0 x1 x2 x3 x4 x5 x6 x7 x8 x9 x10 x11 x12 x13 x14 x15 x16 x17 x18 x19 x20 x21 i) (val_main_v94 (F := F) x17 i) := rfl

def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl

def val_main_call3_v0 : (⟨S16384x512, .f32⟩ : BufTy).Contents (Elt F) :=
  broadcastInDim S16384x512 ![] bcast_S_S16384x512 (val_main_call3_cst (F := F))
abbrev idx_main_call3_v0 (i : S16384x512.Idx) : S_.Idx := fun a => a.elim0
theorem val_main_call3_v0_apply (i : S16384x512.Idx) :
    val_main_call3_v0 (F := F) i = val_main_call3_cst (F := F) (idx_main_call3_v0 i) := by
  unfold val_main_call3_v0
  generalize val_main_call3_cst (F := F) = y
  exact broadcastInDim_apply _ bcast_S_S16384x512 y i (idx_main_call3_v0 i) (fun a => a.elim0)

def val_main_v96 : (⟨S16384x512, .f32⟩ : BufTy).Contents (Elt F) :=
  maximumf (val_main_v95 (F := F) x0 x1 x2 x3 x4 x5 x6 x7 x8 x9 x10 x11 x12 x13 x14 x15 x16 x17 x18 x19 x20 x21) (val_main_call3_v0 (F := F))
theorem val_main_v96_apply (i : S16384x512.Idx) :
    val_main_v96 (F := F) x0 x1 x2 x3 x4 x5 x6 x7 x8 x9 x10 x11 x12 x13 x14 x15 x16 x17 x18 x19 x20 x21 i = FloatOps.maximumf (val_main_v95 (F := F) x0 x1 x2 x3 x4 x5 x6 x7 x8 x9 x10 x11 x12 x13 x14 x15 x16 x17 x18 x19 x20 x21 i) (val_main_call3_v0 (F := F) i) := rfl

def val_main_v97 : (⟨S16384x256, .f32⟩ : BufTy).Contents (Elt F) :=
  Host.dotGeneral dot_S16384x512_S512x256_S16384x256_1_0_0_1_n_n none (val_main_v96 (F := F) x0 x1 x2 x3 x4 x5 x6 x7 x8 x9 x10 x11 x12 x13 x14 x15 x16 x17 x18 x19 x20 x21) (x18)
theorem lhs_main_v97_0 (i : S16384x256.Idx) (q : dot_S16384x512_S512x256_S16384x256_1_0_0_1_n_n.contr.Idx) :
    (dot_S16384x512_S512x256_S16384x256_1_0_0_1_n_n.lhsIdx i q 0).val = (i 0).val := by
  unfold DotDims.lhsIdx
  rw [dif_neg (show ¬(0 : Fin S16384x512.rank) ∈ dot_S16384x512_S512x256_S16384x256_1_0_0_1_n_n.lhsBatch by decide), dif_pos (show (0 : Fin S16384x512.rank) ∈ dot_S16384x512_S512x256_S16384x256_1_0_0_1_n_n.lhsNonContracting by decide)]
  rfl
theorem lhs_main_v97_1 (i : S16384x256.Idx) (q : dot_S16384x512_S512x256_S16384x256_1_0_0_1_n_n.contr.Idx) :
    (dot_S16384x512_S512x256_S16384x256_1_0_0_1_n_n.lhsIdx i q 1).val = (q ⟨0, by decide⟩).val :=
  dot_S16384x512_S512x256_S16384x256_1_0_0_1_n_n.lhsIdx_val_of_single rfl i q
theorem rhs_main_v97_0 (i : S16384x256.Idx) (q : dot_S16384x512_S512x256_S16384x256_1_0_0_1_n_n.contr.Idx) :
    (dot_S16384x512_S512x256_S16384x256_1_0_0_1_n_n.rhsIdx i q 0).val = (q ⟨0, by decide⟩).val :=
  dot_S16384x512_S512x256_S16384x256_1_0_0_1_n_n.rhsIdx_val_of_single rfl i q
theorem rhs_main_v97_1 (i : S16384x256.Idx) (q : dot_S16384x512_S512x256_S16384x256_1_0_0_1_n_n.contr.Idx) :
    (dot_S16384x512_S512x256_S16384x256_1_0_0_1_n_n.rhsIdx i q 1).val = (i 1).val := by
  unfold DotDims.rhsIdx
  rw [dif_neg (show ¬(1 : Fin S512x256.rank) ∈ dot_S16384x512_S512x256_S16384x256_1_0_0_1_n_n.rhsBatch by decide), dif_pos (show (1 : Fin S512x256.rank) ∈ dot_S16384x512_S512x256_S16384x256_1_0_0_1_n_n.rhsNonContracting by decide)]
  rfl
abbrev lidx_main_v97 (i : S16384x256.Idx) (k : Fin 512) : S16384x512.Idx := fun a => match a with
  | ⟨0, _⟩ => ⟨(i 0).val, (i 0).isLt⟩
  | ⟨1, _⟩ => ⟨k.val, k.isLt⟩
abbrev ridx_main_v97 (i : S16384x256.Idx) (k : Fin 512) : S512x256.Idx := fun a => match a with
  | ⟨0, _⟩ => ⟨k.val, k.isLt⟩
  | ⟨1, _⟩ => ⟨(i 1).val, (i 1).isLt⟩

theorem val_main_v97_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S16384x256.Idx) :
    val_main_v97 (F := Ideal) x0 x1 x2 x3 x4 x5 x6 x7 x8 x9 x10 x11 x12 x13 x14 x15 x16 x17 x18 x19 x20 x21 i = ∑ k : Fin 512, (val_main_v96 (F := Ideal) x0 x1 x2 x3 x4 x5 x6 x7 x8 x9 x10 x11 x12 x13 x14 x15 x16 x17 x18 x19 x20 x21) (lidx_main_v97 i k) * x18 (ridx_main_v97 i k) := by
  unfold val_main_v97
  generalize val_main_v96 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S16384x512_S512x256_S16384x256_1_0_0_1_n_n 512 rfl rfl).symm]
  refine Finset.sum_congr rfl fun k _ => ?_
  have hk := ValueIdx.contrEquiv1_symm_val dot_S16384x512_S512x256_S16384x256_1_0_0_1_n_n 512 rfl rfl k
  have el : dot_S16384x512_S512x256_S16384x256_1_0_0_1_n_n.lhsIdx i ((ValueIdx.contrEquiv1 dot_S16384x512_S512x256_S16384x256_1_0_0_1_n_n 512 rfl rfl).symm k) = lidx_main_v97 i k := funext fun a => Fin.ext (by
    match a with
    | ⟨0, _⟩ => exact lhs_main_v97_0 _ _
    | ⟨1, _⟩ => exact (lhs_main_v97_1 _ _).trans hk)
  have er : dot_S16384x512_S512x256_S16384x256_1_0_0_1_n_n.rhsIdx i ((ValueIdx.contrEquiv1 dot_S16384x512_S512x256_S16384x256_1_0_0_1_n_n 512 rfl rfl).symm k) = ridx_main_v97 i k := funext fun a => Fin.ext (by
    match a with
    | ⟨0, _⟩ => exact (rhs_main_v97_0 _ _).trans hk
    | ⟨1, _⟩ => exact rhs_main_v97_1 _ _)
  rw [el, er]

def val_main_v98 : (⟨S1x256, .f32⟩ : BufTy).Contents (Elt F) :=
  broadcastInDim S1x256 ![1] bcast_S256_S1x256_1 (x19)
abbrev idx_main_v98 (i : S1x256.Idx) : S256.Idx := fun a => match a with
  | ⟨0, _⟩ => ⟨(i 1).val, (i 1).isLt⟩
theorem val_main_v98_apply (i : S1x256.Idx) :
    val_main_v98 (F := F) x19 i = x19 (idx_main_v98 i) := by
  unfold val_main_v98
  exact broadcastInDim_apply _ bcast_S256_S1x256_1 x19 i (idx_main_v98 i) (fun a => match a with
    | ⟨0, _⟩ => by show (i 1).val = if (256 : Nat) = 1 then 0 else (i 1).val; rw [if_neg (by decide)])

def val_main_v99 : (⟨S16384x256, .f32⟩ : BufTy).Contents (Elt F) :=
  broadcastInDim S16384x256 ![0, 1] bcast_S1x256_S16384x256_0_1 (val_main_v98 (F := F) x19)
abbrev idx_main_v99 (i : S16384x256.Idx) : S1x256.Idx := fun a => match a with
  | ⟨0, _⟩ => ⟨0, Nat.one_pos⟩
  | ⟨1, _⟩ => ⟨(i 1).val, (i 1).isLt⟩
theorem val_main_v99_apply (i : S16384x256.Idx) :
    val_main_v99 (F := F) x19 i = val_main_v98 (F := F) x19 (idx_main_v99 i) := by
  unfold val_main_v99
  generalize val_main_v98 (F := F) x19 = y
  exact broadcastInDim_apply _ bcast_S1x256_S16384x256_0_1 y i (idx_main_v99 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v100 : (⟨S16384x256, .f32⟩ : BufTy).Contents (Elt F) :=
  addf (val_main_v97 (F := F) x0 x1 x2 x3 x4 x5 x6 x7 x8 x9 x10 x11 x12 x13 x14 x15 x16 x17 x18 x19 x20 x21) (val_main_v99 (F := F) x19)
theorem val_main_v100_apply (i : S16384x256.Idx) :
    val_main_v100 (F := F) x0 x1 x2 x3 x4 x5 x6 x7 x8 x9 x10 x11 x12 x13 x14 x15 x16 x17 x18 x19 x20 x21 i = FloatOps.addf (val_main_v97 (F := F) x0 x1 x2 x3 x4 x5 x6 x7 x8 x9 x10 x11 x12 x13 x14 x15 x16 x17 x18 x19 x20 x21 i) (val_main_v99 (F := F) x19 i) := rfl

def val_main_call4_cst : (⟨S_, .f32⟩ : BufTy).Contents (Elt F) :=
  constant S_ .f32 0x00000000#32
theorem val_main_call4_cst_apply (i : S_.Idx) :
    val_main_call4_cst (F := F) i = FloatOps.ofBits .f32 0x00000000#32 := rfl

def val_main_call4_v0 : (⟨S16384x256, .f32⟩ : BufTy).Contents (Elt F) :=
  broadcastInDim S16384x256 ![] bcast_S_S16384x256 (val_main_call4_cst (F := F))
abbrev idx_main_call4_v0 (i : S16384x256.Idx) : S_.Idx := fun a => a.elim0
theorem val_main_call4_v0_apply (i : S16384x256.Idx) :
    val_main_call4_v0 (F := F) i = val_main_call4_cst (F := F) (idx_main_call4_v0 i) := by
  unfold val_main_call4_v0
  generalize val_main_call4_cst (F := F) = y
  exact broadcastInDim_apply _ bcast_S_S16384x256 y i (idx_main_call4_v0 i) (fun a => a.elim0)

def val_main_v101 : (⟨S16384x256, .f32⟩ : BufTy).Contents (Elt F) :=
  maximumf (val_main_v100 (F := F) x0 x1 x2 x3 x4 x5 x6 x7 x8 x9 x10 x11 x12 x13 x14 x15 x16 x17 x18 x19 x20 x21) (val_main_call4_v0 (F := F))
theorem val_main_v101_apply (i : S16384x256.Idx) :
    val_main_v101 (F := F) x0 x1 x2 x3 x4 x5 x6 x7 x8 x9 x10 x11 x12 x13 x14 x15 x16 x17 x18 x19 x20 x21 i = FloatOps.maximumf (val_main_v100 (F := F) x0 x1 x2 x3 x4 x5 x6 x7 x8 x9 x10 x11 x12 x13 x14 x15 x16 x17 x18 x19 x20 x21 i) (val_main_call4_v0 (F := F) i) := rfl

def val_main_v102 : (⟨S16384x128, .f32⟩ : BufTy).Contents (Elt F) :=
  Host.dotGeneral dot_S16384x256_S256x128_S16384x128_1_0_0_1_n_n none (val_main_v101 (F := F) x0 x1 x2 x3 x4 x5 x6 x7 x8 x9 x10 x11 x12 x13 x14 x15 x16 x17 x18 x19 x20 x21) (x20)
theorem lhs_main_v102_0 (i : S16384x128.Idx) (q : dot_S16384x256_S256x128_S16384x128_1_0_0_1_n_n.contr.Idx) :
    (dot_S16384x256_S256x128_S16384x128_1_0_0_1_n_n.lhsIdx i q 0).val = (i 0).val := by
  unfold DotDims.lhsIdx
  rw [dif_neg (show ¬(0 : Fin S16384x256.rank) ∈ dot_S16384x256_S256x128_S16384x128_1_0_0_1_n_n.lhsBatch by decide), dif_pos (show (0 : Fin S16384x256.rank) ∈ dot_S16384x256_S256x128_S16384x128_1_0_0_1_n_n.lhsNonContracting by decide)]
  rfl
theorem lhs_main_v102_1 (i : S16384x128.Idx) (q : dot_S16384x256_S256x128_S16384x128_1_0_0_1_n_n.contr.Idx) :
    (dot_S16384x256_S256x128_S16384x128_1_0_0_1_n_n.lhsIdx i q 1).val = (q ⟨0, by decide⟩).val :=
  dot_S16384x256_S256x128_S16384x128_1_0_0_1_n_n.lhsIdx_val_of_single rfl i q
theorem rhs_main_v102_0 (i : S16384x128.Idx) (q : dot_S16384x256_S256x128_S16384x128_1_0_0_1_n_n.contr.Idx) :
    (dot_S16384x256_S256x128_S16384x128_1_0_0_1_n_n.rhsIdx i q 0).val = (q ⟨0, by decide⟩).val :=
  dot_S16384x256_S256x128_S16384x128_1_0_0_1_n_n.rhsIdx_val_of_single rfl i q
theorem rhs_main_v102_1 (i : S16384x128.Idx) (q : dot_S16384x256_S256x128_S16384x128_1_0_0_1_n_n.contr.Idx) :
    (dot_S16384x256_S256x128_S16384x128_1_0_0_1_n_n.rhsIdx i q 1).val = (i 1).val := by
  unfold DotDims.rhsIdx
  rw [dif_neg (show ¬(1 : Fin S256x128.rank) ∈ dot_S16384x256_S256x128_S16384x128_1_0_0_1_n_n.rhsBatch by decide), dif_pos (show (1 : Fin S256x128.rank) ∈ dot_S16384x256_S256x128_S16384x128_1_0_0_1_n_n.rhsNonContracting by decide)]
  rfl
abbrev lidx_main_v102 (i : S16384x128.Idx) (k : Fin 256) : S16384x256.Idx := fun a => match a with
  | ⟨0, _⟩ => ⟨(i 0).val, (i 0).isLt⟩
  | ⟨1, _⟩ => ⟨k.val, k.isLt⟩
abbrev ridx_main_v102 (i : S16384x128.Idx) (k : Fin 256) : S256x128.Idx := fun a => match a with
  | ⟨0, _⟩ => ⟨k.val, k.isLt⟩
  | ⟨1, _⟩ => ⟨(i 1).val, (i 1).isLt⟩

theorem val_main_v102_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S16384x128.Idx) :
    val_main_v102 (F := Ideal) x0 x1 x2 x3 x4 x5 x6 x7 x8 x9 x10 x11 x12 x13 x14 x15 x16 x17 x18 x19 x20 x21 i = ∑ k : Fin 256, (val_main_v101 (F := Ideal) x0 x1 x2 x3 x4 x5 x6 x7 x8 x9 x10 x11 x12 x13 x14 x15 x16 x17 x18 x19 x20 x21) (lidx_main_v102 i k) * x20 (ridx_main_v102 i k) := by
  unfold val_main_v102
  generalize val_main_v101 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S16384x256_S256x128_S16384x128_1_0_0_1_n_n 256 rfl rfl).symm]
  refine Finset.sum_congr rfl fun k _ => ?_
  have hk := ValueIdx.contrEquiv1_symm_val dot_S16384x256_S256x128_S16384x128_1_0_0_1_n_n 256 rfl rfl k
  have el : dot_S16384x256_S256x128_S16384x128_1_0_0_1_n_n.lhsIdx i ((ValueIdx.contrEquiv1 dot_S16384x256_S256x128_S16384x128_1_0_0_1_n_n 256 rfl rfl).symm k) = lidx_main_v102 i k := funext fun a => Fin.ext (by
    match a with
    | ⟨0, _⟩ => exact lhs_main_v102_0 _ _
    | ⟨1, _⟩ => exact (lhs_main_v102_1 _ _).trans hk)
  have er : dot_S16384x256_S256x128_S16384x128_1_0_0_1_n_n.rhsIdx i ((ValueIdx.contrEquiv1 dot_S16384x256_S256x128_S16384x128_1_0_0_1_n_n 256 rfl rfl).symm k) = ridx_main_v102 i k := funext fun a => Fin.ext (by
    match a with
    | ⟨0, _⟩ => exact (rhs_main_v102_0 _ _).trans hk
    | ⟨1, _⟩ => exact rhs_main_v102_1 _ _)
  rw [el, er]

def val_main_v103 : (⟨S1x128, .f32⟩ : BufTy).Contents (Elt F) :=
  broadcastInDim S1x128 ![1] bcast_S128_S1x128_1 (x21)
abbrev idx_main_v103 (i : S1x128.Idx) : S128.Idx := fun a => match a with
  | ⟨0, _⟩ => ⟨(i 1).val, (i 1).isLt⟩
theorem val_main_v103_apply (i : S1x128.Idx) :
    val_main_v103 (F := F) x21 i = x21 (idx_main_v103 i) := by
  unfold val_main_v103
  exact broadcastInDim_apply _ bcast_S128_S1x128_1 x21 i (idx_main_v103 i) (fun a => match a with
    | ⟨0, _⟩ => by show (i 1).val = if (128 : Nat) = 1 then 0 else (i 1).val; rw [if_neg (by decide)])

def val_main_v104 : (⟨S16384x128, .f32⟩ : BufTy).Contents (Elt F) :=
  broadcastInDim S16384x128 ![0, 1] bcast_S1x128_S16384x128_0_1 (val_main_v103 (F := F) x21)
abbrev idx_main_v104 (i : S16384x128.Idx) : S1x128.Idx := fun a => match a with
  | ⟨0, _⟩ => ⟨0, Nat.one_pos⟩
  | ⟨1, _⟩ => ⟨(i 1).val, (i 1).isLt⟩
theorem val_main_v104_apply (i : S16384x128.Idx) :
    val_main_v104 (F := F) x21 i = val_main_v103 (F := F) x21 (idx_main_v104 i) := by
  unfold val_main_v104
  generalize val_main_v103 (F := F) x21 = y
  exact broadcastInDim_apply _ bcast_S1x128_S16384x128_0_1 y i (idx_main_v104 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v105 : (⟨S16384x128, .f32⟩ : BufTy).Contents (Elt F) :=
  addf (val_main_v102 (F := F) x0 x1 x2 x3 x4 x5 x6 x7 x8 x9 x10 x11 x12 x13 x14 x15 x16 x17 x18 x19 x20 x21) (val_main_v104 (F := F) x21)
theorem val_main_v105_apply (i : S16384x128.Idx) :
    val_main_v105 (F := F) x0 x1 x2 x3 x4 x5 x6 x7 x8 x9 x10 x11 x12 x13 x14 x15 x16 x17 x18 x19 x20 x21 i = FloatOps.addf (val_main_v102 (F := F) x0 x1 x2 x3 x4 x5 x6 x7 x8 x9 x10 x11 x12 x13 x14 x15 x16 x17 x18 x19 x20 x21 i) (val_main_v104 (F := F) x21 i) := rfl

def val_main_call5_cst : (⟨S_, .f32⟩ : BufTy).Contents (Elt F) :=
  constant S_ .f32 0x00000000#32
theorem val_main_call5_cst_apply (i : S_.Idx) :
    val_main_call5_cst (F := F) i = FloatOps.ofBits .f32 0x00000000#32 := rfl

def val_main_call5_v0 : (⟨S16384x128, .f32⟩ : BufTy).Contents (Elt F) :=
  broadcastInDim S16384x128 ![] bcast_S_S16384x128 (val_main_call5_cst (F := F))
abbrev idx_main_call5_v0 (i : S16384x128.Idx) : S_.Idx := fun a => a.elim0
theorem val_main_call5_v0_apply (i : S16384x128.Idx) :
    val_main_call5_v0 (F := F) i = val_main_call5_cst (F := F) (idx_main_call5_v0 i) := by
  unfold val_main_call5_v0
  generalize val_main_call5_cst (F := F) = y
  exact broadcastInDim_apply _ bcast_S_S16384x128 y i (idx_main_call5_v0 i) (fun a => a.elim0)

def val_main_v106 : (⟨S16384x128, .f32⟩ : BufTy).Contents (Elt F) :=
  maximumf (val_main_v105 (F := F) x0 x1 x2 x3 x4 x5 x6 x7 x8 x9 x10 x11 x12 x13 x14 x15 x16 x17 x18 x19 x20 x21) (val_main_call5_v0 (F := F))
theorem val_main_v106_apply (i : S16384x128.Idx) :
    val_main_v106 (F := F) x0 x1 x2 x3 x4 x5 x6 x7 x8 x9 x10 x11 x12 x13 x14 x15 x16 x17 x18 x19 x20 x21 i = FloatOps.maximumf (val_main_v105 (F := F) x0 x1 x2 x3 x4 x5 x6 x7 x8 x9 x10 x11 x12 x13 x14 x15 x16 x17 x18 x19 x20 x21 i) (val_main_call5_v0 (F := F) i) := rfl

def val_main_v107 : (⟨S1024x8x2x128, .f32⟩ : BufTy).Contents (Elt F) :=
  shapeCast _ (val_main_v106 (F := F) x0 x1 x2 x3 x4 x5 x6 x7 x8 x9 x10 x11 x12 x13 x14 x15 x16 x17 x18 x19 x20 x21) shapeCasts_S16384x128_S1024x8x2x128
abbrev idx_main_v107 (i : S1024x8x2x128.Idx) : S16384x128.Idx := fun a => match a with
  | ⟨0, _⟩ => ⟨((((i 0).val * 8 + (i 1).val) * 2 + (i 2).val) * 128 + (i 3).val) / 128, by have h0 : (i 0).val < 1024 := (i 0).isLt; have h1 : (i 1).val < 8 := (i 1).isLt; have h2 : (i 2).val < 2 := (i 2).isLt; have h3 : (i 3).val < 128 := (i 3).isLt; show ((((i 0).val * 8 + (i 1).val) * 2 + (i 2).val) * 128 + (i 3).val) / 128 < 16384; omega⟩
  | ⟨1, _⟩ => ⟨((((i 0).val * 8 + (i 1).val) * 2 + (i 2).val) * 128 + (i 3).val) % 128, by have h0 : (i 0).val < 1024 := (i 0).isLt; have h1 : (i 1).val < 8 := (i 1).isLt; have h2 : (i 2).val < 2 := (i 2).isLt; have h3 : (i 3).val < 128 := (i 3).isLt; show ((((i 0).val * 8 + (i 1).val) * 2 + (i 2).val) * 128 + (i 3).val) % 128 < 128; omega⟩
theorem val_main_v107_apply (i : S1024x8x2x128.Idx) :
    val_main_v107 (F := F) x0 x1 x2 x3 x4 x5 x6 x7 x8 x9 x10 x11 x12 x13 x14 x15 x16 x17 x18 x19 x20 x21 i = val_main_v106 (F := F) x0 x1 x2 x3 x4 x5 x6 x7 x8 x9 x10 x11 x12 x13 x14 x15 x16 x17 x18 x19 x20 x21 (idx_main_v107 i) := by
  unfold val_main_v107
  generalize val_main_v106 (F := F) x0 x1 x2 x3 x4 x5 x6 x7 x8 x9 x10 x11 x12 x13 x14 x15 x16 x17 x18 x19 x20 x21 = y
  exact shapeCast_apply y shapeCasts_S16384x128_S1024x8x2x128 i (idx_main_v107 i)
    (by rewrite [Shape.rowMajor_val_two, Shape.rowMajor_val_four]; have h0 : (i 0).val < 1024 := (i 0).isLt; have h1 : (i 1).val < 8 := (i 1).isLt; have h2 : (i 2).val < 2 := (i 2).isLt; have h3 : (i 3).val < 128 := (i 3).isLt; show ((((i 0).val * 8 + (i 1).val) * 2 + (i 2).val) * 128 + (i 3).val) / 128 * 128 + ((((i 0).val * 8 + (i 1).val) * 2 + (i 2).val) * 128 + (i 3).val) % 128 = (((i 0).val * 8 + (i 1).val) * 2 + (i 2).val) * 128 + (i 3).val; omega)

def val_main_v108 : (⟨S1024x8x2x128, .f32⟩ : BufTy).Contents (Elt F) :=
  shapeCast _ (val_main_v60 (F := F) x0 x1 x2 x3 x4 x5 x6 x8 x9 x10 x11 x12 x13 x14 x15 x16 x17 x18 x19 x20 x21) shapeCasts_S16384x128_S1024x8x2x128
abbrev idx_main_v108 (i : S1024x8x2x128.Idx) : S16384x128.Idx := fun a => match a with
  | ⟨0, _⟩ => ⟨((((i 0).val * 8 + (i 1).val) * 2 + (i 2).val) * 128 + (i 3).val) / 128, by have h0 : (i 0).val < 1024 := (i 0).isLt; have h1 : (i 1).val < 8 := (i 1).isLt; have h2 : (i 2).val < 2 := (i 2).isLt; have h3 : (i 3).val < 128 := (i 3).isLt; show ((((i 0).val * 8 + (i 1).val) * 2 + (i 2).val) * 128 + (i 3).val) / 128 < 16384; omega⟩
  | ⟨1, _⟩ => ⟨((((i 0).val * 8 + (i 1).val) * 2 + (i 2).val) * 128 + (i 3).val) % 128, by have h0 : (i 0).val < 1024 := (i 0).isLt; have h1 : (i 1).val < 8 := (i 1).isLt; have h2 : (i 2).val < 2 := (i 2).isLt; have h3 : (i 3).val < 128 := (i 3).isLt; show ((((i 0).val * 8 + (i 1).val) * 2 + (i 2).val) * 128 + (i 3).val) % 128 < 128; omega⟩
theorem val_main_v108_apply (i : S1024x8x2x128.Idx) :
    val_main_v108 (F := F) x0 x1 x2 x3 x4 x5 x6 x8 x9 x10 x11 x12 x13 x14 x15 x16 x17 x18 x19 x20 x21 i = val_main_v60 (F := F) x0 x1 x2 x3 x4 x5 x6 x8 x9 x10 x11 x12 x13 x14 x15 x16 x17 x18 x19 x20 x21 (idx_main_v108 i) := by
  unfold val_main_v108
  generalize val_main_v60 (F := F) x0 x1 x2 x3 x4 x5 x6 x8 x9 x10 x11 x12 x13 x14 x15 x16 x17 x18 x19 x20 x21 = y
  exact shapeCast_apply y shapeCasts_S16384x128_S1024x8x2x128 i (idx_main_v108 i)
    (by rewrite [Shape.rowMajor_val_two, Shape.rowMajor_val_four]; have h0 : (i 0).val < 1024 := (i 0).isLt; have h1 : (i 1).val < 8 := (i 1).isLt; have h2 : (i 2).val < 2 := (i 2).isLt; have h3 : (i 3).val < 128 := (i 3).isLt; show ((((i 0).val * 8 + (i 1).val) * 2 + (i 2).val) * 128 + (i 3).val) / 128 * 128 + ((((i 0).val * 8 + (i 1).val) * 2 + (i 2).val) * 128 + (i 3).val) % 128 = (((i 0).val * 8 + (i 1).val) * 2 + (i 2).val) * 128 + (i 3).val; omega)

def val_main_v109 : (⟨S1024x8x2x128, .f32⟩ : BufTy).Contents (Elt F) :=
  shapeCast _ (val_main_v75 (F := F) x0 x1 x2 x3 x4 x5 x7 x8 x9 x10 x11 x12 x13 x14 x15 x16 x17 x18 x19 x20 x21) shapeCasts_S16384x128_S1024x8x2x128
abbrev idx_main_v109 (i : S1024x8x2x128.Idx) : S16384x128.Idx := fun a => match a with
  | ⟨0, _⟩ => ⟨((((i 0).val * 8 + (i 1).val) * 2 + (i 2).val) * 128 + (i 3).val) / 128, by have h0 : (i 0).val < 1024 := (i 0).isLt; have h1 : (i 1).val < 8 := (i 1).isLt; have h2 : (i 2).val < 2 := (i 2).isLt; have h3 : (i 3).val < 128 := (i 3).isLt; show ((((i 0).val * 8 + (i 1).val) * 2 + (i 2).val) * 128 + (i 3).val) / 128 < 16384; omega⟩
  | ⟨1, _⟩ => ⟨((((i 0).val * 8 + (i 1).val) * 2 + (i 2).val) * 128 + (i 3).val) % 128, by have h0 : (i 0).val < 1024 := (i 0).isLt; have h1 : (i 1).val < 8 := (i 1).isLt; have h2 : (i 2).val < 2 := (i 2).isLt; have h3 : (i 3).val < 128 := (i 3).isLt; show ((((i 0).val * 8 + (i 1).val) * 2 + (i 2).val) * 128 + (i 3).val) % 128 < 128; omega⟩
theorem val_main_v109_apply (i : S1024x8x2x128.Idx) :
    val_main_v109 (F := F) x0 x1 x2 x3 x4 x5 x7 x8 x9 x10 x11 x12 x13 x14 x15 x16 x17 x18 x19 x20 x21 i = val_main_v75 (F := F) x0 x1 x2 x3 x4 x5 x7 x8 x9 x10 x11 x12 x13 x14 x15 x16 x17 x18 x19 x20 x21 (idx_main_v109 i) := by
  unfold val_main_v109
  generalize val_main_v75 (F := F) x0 x1 x2 x3 x4 x5 x7 x8 x9 x10 x11 x12 x13 x14 x15 x16 x17 x18 x19 x20 x21 = y
  exact shapeCast_apply y shapeCasts_S16384x128_S1024x8x2x128 i (idx_main_v109 i)
    (by rewrite [Shape.rowMajor_val_two, Shape.rowMajor_val_four]; have h0 : (i 0).val < 1024 := (i 0).isLt; have h1 : (i 1).val < 8 := (i 1).isLt; have h2 : (i 2).val < 2 := (i 2).isLt; have h3 : (i 3).val < 128 := (i 3).isLt; show ((((i 0).val * 8 + (i 1).val) * 2 + (i 2).val) * 128 + (i 3).val) / 128 * 128 + ((((i 0).val * 8 + (i 1).val) * 2 + (i 2).val) * 128 + (i 3).val) % 128 = (((i 0).val * 8 + (i 1).val) * 2 + (i 2).val) * 128 + (i 3).val; omega)

def val_main_v110 : (⟨S8192, .f32⟩ : BufTy).Contents (Elt F) :=
  extractStridedSlice S8192 ![7168] (val_main_v25 (F := F) x6) slices_S64512_S8192_7168
abbrev idx_main_v110 (i : S8192.Idx) : S64512.Idx := fun a => match a with
  | ⟨0, _⟩ => ⟨7168 + (i 0).val, by have h0 : (i 0).val < 8192 := (i 0).isLt; show 7168 + (i 0).val < 64512; omega⟩
theorem val_main_v110_apply (i : S8192.Idx) :
    val_main_v110 (F := F) x6 i = val_main_v25 (F := F) x6 (idx_main_v110 i) := by
  unfold val_main_v110
  generalize val_main_v25 (F := F) x6 = y
  exact extractStridedSlice_apply ![7168] y slices_S64512_S8192_7168 i (idx_main_v110 i) (fun a => match a with
    | ⟨0, _⟩ => by show 7168 + (i 0).val = 7168 + (i 0).val; omega)

def val_main_v111 : (⟨S1024x8x1, .f32⟩ : BufTy).Contents (Elt F) :=
  shapeCast _ (val_main_v110 (F := F) x6) shapeCasts_S8192_S1024x8x1
abbrev idx_main_v111 (i : S1024x8x1.Idx) : S8192.Idx := fun a => match a with
  | ⟨0, _⟩ => ⟨((i 0).val * 8 + (i 1).val) * 1 + (i 2).val, by have h0 : (i 0).val < 1024 := (i 0).isLt; have h1 : (i 1).val < 8 := (i 1).isLt; have h2 : (i 2).val < 1 := (i 2).isLt; show ((i 0).val * 8 + (i 1).val) * 1 + (i 2).val < 8192; omega⟩
theorem val_main_v111_apply (i : S1024x8x1.Idx) :
    val_main_v111 (F := F) x6 i = val_main_v110 (F := F) x6 (idx_main_v111 i) := by
  unfold val_main_v111
  generalize val_main_v110 (F := F) x6 = y
  exact shapeCast_apply y shapeCasts_S8192_S1024x8x1 i (idx_main_v111 i)
    (by rewrite [Shape.rowMajor_val_one, Shape.rowMajor_val_three]; have h0 : (i 0).val < 1024 := (i 0).isLt; have h1 : (i 1).val < 8 := (i 1).isLt; have h2 : (i 2).val < 1 := (i 2).isLt; show ((i 0).val * 8 + (i 1).val) * 1 + (i 2).val = ((i 0).val * 8 + (i 1).val) * 1 + (i 2).val; omega)

def val_main_v112 : (⟨S8192, .f32⟩ : BufTy).Contents (Elt F) :=
  extractStridedSlice S8192 ![7168] (val_main_v26 (F := F) x7) slices_S64512_S8192_7168
abbrev idx_main_v112 (i : S8192.Idx) : S64512.Idx := fun a => match a with
  | ⟨0, _⟩ => ⟨7168 + (i 0).val, by have h0 : (i 0).val < 8192 := (i 0).isLt; show 7168 + (i 0).val < 64512; omega⟩
theorem val_main_v112_apply (i : S8192.Idx) :
    val_main_v112 (F := F) x7 i = val_main_v26 (F := F) x7 (idx_main_v112 i) := by
  unfold val_main_v112
  generalize val_main_v26 (F := F) x7 = y
  exact extractStridedSlice_apply ![7168] y slices_S64512_S8192_7168 i (idx_main_v112 i) (fun a => match a with
    | ⟨0, _⟩ => by show 7168 + (i 0).val = 7168 + (i 0).val; omega)

def val_main_v113 : (⟨S1024x8x1, .f32⟩ : BufTy).Contents (Elt F) :=
  shapeCast _ (val_main_v112 (F := F) x7) shapeCasts_S8192_S1024x8x1
abbrev idx_main_v113 (i : S1024x8x1.Idx) : S8192.Idx := fun a => match a with
  | ⟨0, _⟩ => ⟨((i 0).val * 8 + (i 1).val) * 1 + (i 2).val, by have h0 : (i 0).val < 1024 := (i 0).isLt; have h1 : (i 1).val < 8 := (i 1).isLt; have h2 : (i 2).val < 1 := (i 2).isLt; show ((i 0).val * 8 + (i 1).val) * 1 + (i 2).val < 8192; omega⟩
theorem val_main_v113_apply (i : S1024x8x1.Idx) :
    val_main_v113 (F := F) x7 i = val_main_v112 (F := F) x7 (idx_main_v113 i) := by
  unfold val_main_v113
  generalize val_main_v112 (F := F) x7 = y
  exact shapeCast_apply y shapeCasts_S8192_S1024x8x1 i (idx_main_v113 i)
    (by rewrite [Shape.rowMajor_val_one, Shape.rowMajor_val_three]; have h0 : (i 0).val < 1024 := (i 0).isLt; have h1 : (i 1).val < 8 := (i 1).isLt; have h2 : (i 2).val < 1 := (i 2).isLt; show ((i 0).val * 8 + (i 1).val) * 1 + (i 2).val = ((i 0).val * 8 + (i 1).val) * 1 + (i 2).val; omega)

def val_main_v114 : (⟨S1024x8x1x128, .f32⟩ : BufTy).Contents (Elt F) :=
  extractStridedSlice S1024x8x1x128 ![0, 0, 0, 0] (val_main_v107 (F := F) x0 x1 x2 x3 x4 x5 x6 x7 x8 x9 x10 x11 x12 x13 x14 x15 x16 x17 x18 x19 x20 x21) slices_S1024x8x2x128_S1024x8x1x128_0_0_0_0
abbrev idx_main_v114 (i : S1024x8x1x128.Idx) : S1024x8x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v114_apply (i : S1024x8x1x128.Idx) :
    val_main_v114 (F := F) x0 x1 x2 x3 x4 x5 x6 x7 x8 x9 x10 x11 x12 x13 x14 x15 x16 x17 x18 x19 x20 x21 i = val_main_v107 (F := F) x0 x1 x2 x3 x4 x5 x6 x7 x8 x9 x10 x11 x12 x13 x14 x15 x16 x17 x18 x19 x20 x21 (idx_main_v114 i) := by
  unfold val_main_v114
  generalize val_main_v107 (F := F) x0 x1 x2 x3 x4 x5 x6 x7 x8 x9 x10 x11 x12 x13 x14 x15 x16 x17 x18 x19 x20 x21 = y
  exact extractStridedSlice_apply ![0, 0, 0, 0] y slices_S1024x8x2x128_S1024x8x1x128_0_0_0_0 i (idx_main_v114 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v115 : (⟨S1024x8x128, .f32⟩ : BufTy).Contents (Elt F) :=
  shapeCast _ (val_main_v114 (F := F) x0 x1 x2 x3 x4 x5 x6 x7 x8 x9 x10 x11 x12 x13 x14 x15 x16 x17 x18 x19 x20 x21) shapeCasts_S1024x8x1x128_S1024x8x128
abbrev idx_main_v115 (i : S1024x8x128.Idx) : S1024x8x1x128.Idx := fun a => match a with
  | ⟨0, _⟩ => ⟨(((i 0).val * 8 + (i 1).val) * 128 + (i 2).val) / 1024, by have h0 : (i 0).val < 1024 := (i 0).isLt; have h1 : (i 1).val < 8 := (i 1).isLt; have h2 : (i 2).val < 128 := (i 2).isLt; show (((i 0).val * 8 + (i 1).val) * 128 + (i 2).val) / 1024 < 1024; omega⟩
  | ⟨1, _⟩ => ⟨(((i 0).val * 8 + (i 1).val) * 128 + (i 2).val) / 128 % 8, by have h0 : (i 0).val < 1024 := (i 0).isLt; have h1 : (i 1).val < 8 := (i 1).isLt; have h2 : (i 2).val < 128 := (i 2).isLt; show (((i 0).val * 8 + (i 1).val) * 128 + (i 2).val) / 128 % 8 < 8; omega⟩
  | ⟨2, _⟩ => ⟨0, Nat.one_pos⟩
  | ⟨3, _⟩ => ⟨(((i 0).val * 8 + (i 1).val) * 128 + (i 2).val) % 128, by have h0 : (i 0).val < 1024 := (i 0).isLt; have h1 : (i 1).val < 8 := (i 1).isLt; have h2 : (i 2).val < 128 := (i 2).isLt; show (((i 0).val * 8 + (i 1).val) * 128 + (i 2).val) % 128 < 128; omega⟩
theorem val_main_v115_apply (i : S1024x8x128.Idx) :
    val_main_v115 (F := F) x0 x1 x2 x3 x4 x5 x6 x7 x8 x9 x10 x11 x12 x13 x14 x15 x16 x17 x18 x19 x20 x21 i = val_main_v114 (F := F) x0 x1 x2 x3 x4 x5 x6 x7 x8 x9 x10 x11 x12 x13 x14 x15 x16 x17 x18 x19 x20 x21 (idx_main_v115 i) := by
  unfold val_main_v115
  generalize val_main_v114 (F := F) x0 x1 x2 x3 x4 x5 x6 x7 x8 x9 x10 x11 x12 x13 x14 x15 x16 x17 x18 x19 x20 x21 = y
  exact shapeCast_apply y shapeCasts_S1024x8x1x128_S1024x8x128 i (idx_main_v115 i)
    (by rewrite [Shape.rowMajor_val_four, Shape.rowMajor_val_three]; have h0 : (i 0).val < 1024 := (i 0).isLt; have h1 : (i 1).val < 8 := (i 1).isLt; have h2 : (i 2).val < 128 := (i 2).isLt; show (((((i 0).val * 8 + (i 1).val) * 128 + (i 2).val) / 1024 * 8 + (((i 0).val * 8 + (i 1).val) * 128 + (i 2).val) / 128 % 8) * 1 + 0) * 128 + (((i 0).val * 8 + (i 1).val) * 128 + (i 2).val) % 128 = ((i 0).val * 8 + (i 1).val) * 128 + (i 2).val; omega)

def val_main_v116 : (⟨S1024x8x128, .f32⟩ : BufTy).Contents (Elt F) :=
  broadcastInDim S1024x8x128 ![0, 1, 2] bcast_S1024x8x1_S1024x8x128_0_1_2 (val_main_v111 (F := F) x6)
abbrev idx_main_v116 (i : S1024x8x128.Idx) : S1024x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v116_apply (i : S1024x8x128.Idx) :
    val_main_v116 (F := F) x6 i = val_main_v111 (F := F) x6 (idx_main_v116 i) := by
  unfold val_main_v116
  generalize val_main_v111 (F := F) x6 = y
  exact broadcastInDim_apply _ bcast_S1024x8x1_S1024x8x128_0_1_2 y i (idx_main_v116 i) (fun a => match a with
    | ⟨0, _⟩ => by show (i 0).val = if (1024 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

def val_main_v117 : (⟨S1024x8x128, .f32⟩ : BufTy).Contents (Elt F) :=
  mulf (val_main_v115 (F := F) x0 x1 x2 x3 x4 x5 x6 x7 x8 x9 x10 x11 x12 x13 x14 x15 x16 x17 x18 x19 x20 x21) (val_main_v116 (F := F) x6)
theorem val_main_v117_apply (i : S1024x8x128.Idx) :
    val_main_v117 (F := F) x0 x1 x2 x3 x4 x5 x6 x7 x8 x9 x10 x11 x12 x13 x14 x15 x16 x17 x18 x19 x20 x21 i = FloatOps.mulf (val_main_v115 (F := F) x0 x1 x2 x3 x4 x5 x6 x7 x8 x9 x10 x11 x12 x13 x14 x15 x16 x17 x18 x19 x20 x21 i) (val_main_v116 (F := F) x6 i) := rfl

def val_main_v118 : (⟨S8192x128, .f32⟩ : BufTy).Contents (Elt F) :=
  shapeCast _ (val_main_v117 (F := F) x0 x1 x2 x3 x4 x5 x6 x7 x8 x9 x10 x11 x12 x13 x14 x15 x16 x17 x18 x19 x20 x21) shapeCasts_S1024x8x128_S8192x128
abbrev idx_main_v118 (i : S8192x128.Idx) : S1024x8x128.Idx := fun a => match a with
  | ⟨0, _⟩ => ⟨((i 0).val * 128 + (i 1).val) / 1024, by have h0 : (i 0).val < 8192 := (i 0).isLt; have h1 : (i 1).val < 128 := (i 1).isLt; show ((i 0).val * 128 + (i 1).val) / 1024 < 1024; omega⟩
  | ⟨1, _⟩ => ⟨((i 0).val * 128 + (i 1).val) / 128 % 8, by have h0 : (i 0).val < 8192 := (i 0).isLt; have h1 : (i 1).val < 128 := (i 1).isLt; show ((i 0).val * 128 + (i 1).val) / 128 % 8 < 8; omega⟩
  | ⟨2, _⟩ => ⟨((i 0).val * 128 + (i 1).val) % 128, by have h0 : (i 0).val < 8192 := (i 0).isLt; have h1 : (i 1).val < 128 := (i 1).isLt; show ((i 0).val * 128 + (i 1).val) % 128 < 128; omega⟩
theorem val_main_v118_apply (i : S8192x128.Idx) :
    val_main_v118 (F := F) x0 x1 x2 x3 x4 x5 x6 x7 x8 x9 x10 x11 x12 x13 x14 x15 x16 x17 x18 x19 x20 x21 i = val_main_v117 (F := F) x0 x1 x2 x3 x4 x5 x6 x7 x8 x9 x10 x11 x12 x13 x14 x15 x16 x17 x18 x19 x20 x21 (idx_main_v118 i) := by
  unfold val_main_v118
  generalize val_main_v117 (F := F) x0 x1 x2 x3 x4 x5 x6 x7 x8 x9 x10 x11 x12 x13 x14 x15 x16 x17 x18 x19 x20 x21 = y
  exact shapeCast_apply y shapeCasts_S1024x8x128_S8192x128 i (idx_main_v118 i)
    (by rewrite [Shape.rowMajor_val_three, Shape.rowMajor_val_two]; have h0 : (i 0).val < 8192 := (i 0).isLt; have h1 : (i 1).val < 128 := (i 1).isLt; show (((i 0).val * 128 + (i 1).val) / 1024 * 8 + ((i 0).val * 128 + (i 1).val) / 128 % 8) * 128 + ((i 0).val * 128 + (i 1).val) % 128 = (i 0).val * 128 + (i 1).val; omega)

def val_main_v119 : (⟨S1024x8x1x128, .f32⟩ : BufTy).Contents (Elt F) :=
  extractStridedSlice S1024x8x1x128 ![0, 0, 0, 0] (val_main_v108 (F := F) x0 x1 x2 x3 x4 x5 x6 x8 x9 x10 x11 x12 x13 x14 x15 x16 x17 x18 x19 x20 x21) slices_S1024x8x2x128_S1024x8x1x128_0_0_0_0
abbrev idx_main_v119 (i : S1024x8x1x128.Idx) : S1024x8x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v119_apply (i : S1024x8x1x128.Idx) :
    val_main_v119 (F := F) x0 x1 x2 x3 x4 x5 x6 x8 x9 x10 x11 x12 x13 x14 x15 x16 x17 x18 x19 x20 x21 i = val_main_v108 (F := F) x0 x1 x2 x3 x4 x5 x6 x8 x9 x10 x11 x12 x13 x14 x15 x16 x17 x18 x19 x20 x21 (idx_main_v119 i) := by
  unfold val_main_v119
  generalize val_main_v108 (F := F) x0 x1 x2 x3 x4 x5 x6 x8 x9 x10 x11 x12 x13 x14 x15 x16 x17 x18 x19 x20 x21 = y
  exact extractStridedSlice_apply ![0, 0, 0, 0] y slices_S1024x8x2x128_S1024x8x1x128_0_0_0_0 i (idx_main_v119 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v120 : (⟨S1024x8x128, .f32⟩ : BufTy).Contents (Elt F) :=
  shapeCast _ (val_main_v119 (F := F) x0 x1 x2 x3 x4 x5 x6 x8 x9 x10 x11 x12 x13 x14 x15 x16 x17 x18 x19 x20 x21) shapeCasts_S1024x8x1x128_S1024x8x128
abbrev idx_main_v120 (i : S1024x8x128.Idx) : S1024x8x1x128.Idx := fun a => match a with
  | ⟨0, _⟩ => ⟨(((i 0).val * 8 + (i 1).val) * 128 + (i 2).val) / 1024, by have h0 : (i 0).val < 1024 := (i 0).isLt; have h1 : (i 1).val < 8 := (i 1).isLt; have h2 : (i 2).val < 128 := (i 2).isLt; show (((i 0).val * 8 + (i 1).val) * 128 + (i 2).val) / 1024 < 1024; omega⟩
  | ⟨1, _⟩ => ⟨(((i 0).val * 8 + (i 1).val) * 128 + (i 2).val) / 128 % 8, by have h0 : (i 0).val < 1024 := (i 0).isLt; have h1 : (i 1).val < 8 := (i 1).isLt; have h2 : (i 2).val < 128 := (i 2).isLt; show (((i 0).val * 8 + (i 1).val) * 128 + (i 2).val) / 128 % 8 < 8; omega⟩
  | ⟨2, _⟩ => ⟨0, Nat.one_pos⟩
  | ⟨3, _⟩ => ⟨(((i 0).val * 8 + (i 1).val) * 128 + (i 2).val) % 128, by have h0 : (i 0).val < 1024 := (i 0).isLt; have h1 : (i 1).val < 8 := (i 1).isLt; have h2 : (i 2).val < 128 := (i 2).isLt; show (((i 0).val * 8 + (i 1).val) * 128 + (i 2).val) % 128 < 128; omega⟩
theorem val_main_v120_apply (i : S1024x8x128.Idx) :
    val_main_v120 (F := F) x0 x1 x2 x3 x4 x5 x6 x8 x9 x10 x11 x12 x13 x14 x15 x16 x17 x18 x19 x20 x21 i = val_main_v119 (F := F) x0 x1 x2 x3 x4 x5 x6 x8 x9 x10 x11 x12 x13 x14 x15 x16 x17 x18 x19 x20 x21 (idx_main_v120 i) := by
  unfold val_main_v120
  generalize val_main_v119 (F := F) x0 x1 x2 x3 x4 x5 x6 x8 x9 x10 x11 x12 x13 x14 x15 x16 x17 x18 x19 x20 x21 = y
  exact shapeCast_apply y shapeCasts_S1024x8x1x128_S1024x8x128 i (idx_main_v120 i)
    (by rewrite [Shape.rowMajor_val_four, Shape.rowMajor_val_three]; have h0 : (i 0).val < 1024 := (i 0).isLt; have h1 : (i 1).val < 8 := (i 1).isLt; have h2 : (i 2).val < 128 := (i 2).isLt; show (((((i 0).val * 8 + (i 1).val) * 128 + (i 2).val) / 1024 * 8 + (((i 0).val * 8 + (i 1).val) * 128 + (i 2).val) / 128 % 8) * 1 + 0) * 128 + (((i 0).val * 8 + (i 1).val) * 128 + (i 2).val) % 128 = ((i 0).val * 8 + (i 1).val) * 128 + (i 2).val; omega)

def val_main_v121 : (⟨S1024x8x128, .f32⟩ : BufTy).Contents (Elt F) :=
  broadcastInDim S1024x8x128 ![0, 1, 2] bcast_S1024x8x1_S1024x8x128_0_1_2 (val_main_v111 (F := F) x6)
abbrev idx_main_v121 (i : S1024x8x128.Idx) : S1024x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v121_apply (i : S1024x8x128.Idx) :
    val_main_v121 (F := F) x6 i = val_main_v111 (F := F) x6 (idx_main_v121 i) := by
  unfold val_main_v121
  generalize val_main_v111 (F := F) x6 = y
  exact broadcastInDim_apply _ bcast_S1024x8x1_S1024x8x128_0_1_2 y i (idx_main_v121 i) (fun a => match a with
    | ⟨0, _⟩ => by show (i 0).val = if (1024 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

def val_main_v122 : (⟨S1024x8x128, .f32⟩ : BufTy).Contents (Elt F) :=
  mulf (val_main_v120 (F := F) x0 x1 x2 x3 x4 x5 x6 x8 x9 x10 x11 x12 x13 x14 x15 x16 x17 x18 x19 x20 x21) (val_main_v121 (F := F) x6)
theorem val_main_v122_apply (i : S1024x8x128.Idx) :
    val_main_v122 (F := F) x0 x1 x2 x3 x4 x5 x6 x8 x9 x10 x11 x12 x13 x14 x15 x16 x17 x18 x19 x20 x21 i = FloatOps.mulf (val_main_v120 (F := F) x0 x1 x2 x3 x4 x5 x6 x8 x9 x10 x11 x12 x13 x14 x15 x16 x17 x18 x19 x20 x21 i) (val_main_v121 (F := F) x6 i) := rfl

def val_main_v123 : (⟨S8192x128, .f32⟩ : BufTy).Contents (Elt F) :=
  shapeCast _ (val_main_v122 (F := F) x0 x1 x2 x3 x4 x5 x6 x8 x9 x10 x11 x12 x13 x14 x15 x16 x17 x18 x19 x20 x21) shapeCasts_S1024x8x128_S8192x128
abbrev idx_main_v123 (i : S8192x128.Idx) : S1024x8x128.Idx := fun a => match a with
  | ⟨0, _⟩ => ⟨((i 0).val * 128 + (i 1).val) / 1024, by have h0 : (i 0).val < 8192 := (i 0).isLt; have h1 : (i 1).val < 128 := (i 1).isLt; show ((i 0).val * 128 + (i 1).val) / 1024 < 1024; omega⟩
  | ⟨1, _⟩ => ⟨((i 0).val * 128 + (i 1).val) / 128 % 8, by have h0 : (i 0).val < 8192 := (i 0).isLt; have h1 : (i 1).val < 128 := (i 1).isLt; show ((i 0).val * 128 + (i 1).val) / 128 % 8 < 8; omega⟩
  | ⟨2, _⟩ => ⟨((i 0).val * 128 + (i 1).val) % 128, by have h0 : (i 0).val < 8192 := (i 0).isLt; have h1 : (i 1).val < 128 := (i 1).isLt; show ((i 0).val * 128 + (i 1).val) % 128 < 128; omega⟩
theorem val_main_v123_apply (i : S8192x128.Idx) :
    val_main_v123 (F := F) x0 x1 x2 x3 x4 x5 x6 x8 x9 x10 x11 x12 x13 x14 x15 x16 x17 x18 x19 x20 x21 i = val_main_v122 (F := F) x0 x1 x2 x3 x4 x5 x6 x8 x9 x10 x11 x12 x13 x14 x15 x16 x17 x18 x19 x20 x21 (idx_main_v123 i) := by
  unfold val_main_v123
  generalize val_main_v122 (F := F) x0 x1 x2 x3 x4 x5 x6 x8 x9 x10 x11 x12 x13 x14 x15 x16 x17 x18 x19 x20 x21 = y
  exact shapeCast_apply y shapeCasts_S1024x8x128_S8192x128 i (idx_main_v123 i)
    (by rewrite [Shape.rowMajor_val_three, Shape.rowMajor_val_two]; have h0 : (i 0).val < 8192 := (i 0).isLt; have h1 : (i 1).val < 128 := (i 1).isLt; show (((i 0).val * 128 + (i 1).val) / 1024 * 8 + ((i 0).val * 128 + (i 1).val) / 128 % 8) * 128 + ((i 0).val * 128 + (i 1).val) % 128 = (i 0).val * 128 + (i 1).val; omega)

def val_main_v124 : (⟨S1024x8x1x128, .f32⟩ : BufTy).Contents (Elt F) :=
  extractStridedSlice S1024x8x1x128 ![0, 0, 0, 0] (val_main_v109 (F := F) x0 x1 x2 x3 x4 x5 x7 x8 x9 x10 x11 x12 x13 x14 x15 x16 x17 x18 x19 x20 x21) slices_S1024x8x2x128_S1024x8x1x128_0_0_0_0
abbrev idx_main_v124 (i : S1024x8x1x128.Idx) : S1024x8x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v124_apply (i : S1024x8x1x128.Idx) :
    val_main_v124 (F := F) x0 x1 x2 x3 x4 x5 x7 x8 x9 x10 x11 x12 x13 x14 x15 x16 x17 x18 x19 x20 x21 i = val_main_v109 (F := F) x0 x1 x2 x3 x4 x5 x7 x8 x9 x10 x11 x12 x13 x14 x15 x16 x17 x18 x19 x20 x21 (idx_main_v124 i) := by
  unfold val_main_v124
  generalize val_main_v109 (F := F) x0 x1 x2 x3 x4 x5 x7 x8 x9 x10 x11 x12 x13 x14 x15 x16 x17 x18 x19 x20 x21 = y
  exact extractStridedSlice_apply ![0, 0, 0, 0] y slices_S1024x8x2x128_S1024x8x1x128_0_0_0_0 i (idx_main_v124 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v125 : (⟨S1024x8x128, .f32⟩ : BufTy).Contents (Elt F) :=
  shapeCast _ (val_main_v124 (F := F) x0 x1 x2 x3 x4 x5 x7 x8 x9 x10 x11 x12 x13 x14 x15 x16 x17 x18 x19 x20 x21) shapeCasts_S1024x8x1x128_S1024x8x128
abbrev idx_main_v125 (i : S1024x8x128.Idx) : S1024x8x1x128.Idx := fun a => match a with
  | ⟨0, _⟩ => ⟨(((i 0).val * 8 + (i 1).val) * 128 + (i 2).val) / 1024, by have h0 : (i 0).val < 1024 := (i 0).isLt; have h1 : (i 1).val < 8 := (i 1).isLt; have h2 : (i 2).val < 128 := (i 2).isLt; show (((i 0).val * 8 + (i 1).val) * 128 + (i 2).val) / 1024 < 1024; omega⟩
  | ⟨1, _⟩ => ⟨(((i 0).val * 8 + (i 1).val) * 128 + (i 2).val) / 128 % 8, by have h0 : (i 0).val < 1024 := (i 0).isLt; have h1 : (i 1).val < 8 := (i 1).isLt; have h2 : (i 2).val < 128 := (i 2).isLt; show (((i 0).val * 8 + (i 1).val) * 128 + (i 2).val) / 128 % 8 < 8; omega⟩
  | ⟨2, _⟩ => ⟨0, Nat.one_pos⟩
  | ⟨3, _⟩ => ⟨(((i 0).val * 8 + (i 1).val) * 128 + (i 2).val) % 128, by have h0 : (i 0).val < 1024 := (i 0).isLt; have h1 : (i 1).val < 8 := (i 1).isLt; have h2 : (i 2).val < 128 := (i 2).isLt; show (((i 0).val * 8 + (i 1).val) * 128 + (i 2).val) % 128 < 128; omega⟩
theorem val_main_v125_apply (i : S1024x8x128.Idx) :
    val_main_v125 (F := F) x0 x1 x2 x3 x4 x5 x7 x8 x9 x10 x11 x12 x13 x14 x15 x16 x17 x18 x19 x20 x21 i = val_main_v124 (F := F) x0 x1 x2 x3 x4 x5 x7 x8 x9 x10 x11 x12 x13 x14 x15 x16 x17 x18 x19 x20 x21 (idx_main_v125 i) := by
  unfold val_main_v125
  generalize val_main_v124 (F := F) x0 x1 x2 x3 x4 x5 x7 x8 x9 x10 x11 x12 x13 x14 x15 x16 x17 x18 x19 x20 x21 = y
  exact shapeCast_apply y shapeCasts_S1024x8x1x128_S1024x8x128 i (idx_main_v125 i)
    (by rewrite [Shape.rowMajor_val_four, Shape.rowMajor_val_three]; have h0 : (i 0).val < 1024 := (i 0).isLt; have h1 : (i 1).val < 8 := (i 1).isLt; have h2 : (i 2).val < 128 := (i 2).isLt; show (((((i 0).val * 8 + (i 1).val) * 128 + (i 2).val) / 1024 * 8 + (((i 0).val * 8 + (i 1).val) * 128 + (i 2).val) / 128 % 8) * 1 + 0) * 128 + (((i 0).val * 8 + (i 1).val) * 128 + (i 2).val) % 128 = ((i 0).val * 8 + (i 1).val) * 128 + (i 2).val; omega)

def val_main_v126 : (⟨S1024x8x128, .f32⟩ : BufTy).Contents (Elt F) :=
  broadcastInDim S1024x8x128 ![0, 1, 2] bcast_S1024x8x1_S1024x8x128_0_1_2 (val_main_v111 (F := F) x6)
abbrev idx_main_v126 (i : S1024x8x128.Idx) : S1024x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v126_apply (i : S1024x8x128.Idx) :
    val_main_v126 (F := F) x6 i = val_main_v111 (F := F) x6 (idx_main_v126 i) := by
  unfold val_main_v126
  generalize val_main_v111 (F := F) x6 = y
  exact broadcastInDim_apply _ bcast_S1024x8x1_S1024x8x128_0_1_2 y i (idx_main_v126 i) (fun a => match a with
    | ⟨0, _⟩ => by show (i 0).val = if (1024 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

def val_main_v127 : (⟨S1024x8x128, .f32⟩ : BufTy).Contents (Elt F) :=
  mulf (val_main_v125 (F := F) x0 x1 x2 x3 x4 x5 x7 x8 x9 x10 x11 x12 x13 x14 x15 x16 x17 x18 x19 x20 x21) (val_main_v126 (F := F) x6)
theorem val_main_v127_apply (i : S1024x8x128.Idx) :
    val_main_v127 (F := F) x0 x1 x2 x3 x4 x5 x6 x7 x8 x9 x10 x11 x12 x13 x14 x15 x16 x17 x18 x19 x20 x21 i = FloatOps.mulf (val_main_v125 (F := F) x0 x1 x2 x3 x4 x5 x7 x8 x9 x10 x11 x12 x13 x14 x15 x16 x17 x18 x19 x20 x21 i) (val_main_v126 (F := F) x6 i) := rfl

def val_main_v128 : (⟨S8192x128, .f32⟩ : BufTy).Contents (Elt F) :=
  shapeCast _ (val_main_v127 (F := F) x0 x1 x2 x3 x4 x5 x6 x7 x8 x9 x10 x11 x12 x13 x14 x15 x16 x17 x18 x19 x20 x21) shapeCasts_S1024x8x128_S8192x128
abbrev idx_main_v128 (i : S8192x128.Idx) : S1024x8x128.Idx := fun a => match a with
  | ⟨0, _⟩ => ⟨((i 0).val * 128 + (i 1).val) / 1024, by have h0 : (i 0).val < 8192 := (i 0).isLt; have h1 : (i 1).val < 128 := (i 1).isLt; show ((i 0).val * 128 + (i 1).val) / 1024 < 1024; omega⟩
  | ⟨1, _⟩ => ⟨((i 0).val * 128 + (i 1).val) / 128 % 8, by have h0 : (i 0).val < 8192 := (i 0).isLt; have h1 : (i 1).val < 128 := (i 1).isLt; show ((i 0).val * 128 + (i 1).val) / 128 % 8 < 8; omega⟩
  | ⟨2, _⟩ => ⟨((i 0).val * 128 + (i 1).val) % 128, by have h0 : (i 0).val < 8192 := (i 0).isLt; have h1 : (i 1).val < 128 := (i 1).isLt; show ((i 0).val * 128 + (i 1).val) % 128 < 128; omega⟩
theorem val_main_v128_apply (i : S8192x128.Idx) :
    val_main_v128 (F := F) x0 x1 x2 x3 x4 x5 x6 x7 x8 x9 x10 x11 x12 x13 x14 x15 x16 x17 x18 x19 x20 x21 i = val_main_v127 (F := F) x0 x1 x2 x3 x4 x5 x6 x7 x8 x9 x10 x11 x12 x13 x14 x15 x16 x17 x18 x19 x20 x21 (idx_main_v128 i) := by
  unfold val_main_v128
  generalize val_main_v127 (F := F) x0 x1 x2 x3 x4 x5 x6 x7 x8 x9 x10 x11 x12 x13 x14 x15 x16 x17 x18 x19 x20 x21 = y
  exact shapeCast_apply y shapeCasts_S1024x8x128_S8192x128 i (idx_main_v128 i)
    (by rewrite [Shape.rowMajor_val_three, Shape.rowMajor_val_two]; have h0 : (i 0).val < 8192 := (i 0).isLt; have h1 : (i 1).val < 128 := (i 1).isLt; show (((i 0).val * 128 + (i 1).val) / 1024 * 8 + ((i 0).val * 128 + (i 1).val) / 128 % 8) * 128 + ((i 0).val * 128 + (i 1).val) % 128 = (i 0).val * 128 + (i 1).val; omega)

def val_main_v129 : (⟨S1024x8x1x128, .f32⟩ : BufTy).Contents (Elt F) :=
  extractStridedSlice S1024x8x1x128 ![0, 0, 1, 0] (val_main_v107 (F := F) x0 x1 x2 x3 x4 x5 x6 x7 x8 x9 x10 x11 x12 x13 x14 x15 x16 x17 x18 x19 x20 x21) slices_S1024x8x2x128_S1024x8x1x128_0_0_1_0
abbrev idx_main_v129 (i : S1024x8x1x128.Idx) : S1024x8x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v129_apply (i : S1024x8x1x128.Idx) :
    val_main_v129 (F := F) x0 x1 x2 x3 x4 x5 x6 x7 x8 x9 x10 x11 x12 x13 x14 x15 x16 x17 x18 x19 x20 x21 i = val_main_v107 (F := F) x0 x1 x2 x3 x4 x5 x6 x7 x8 x9 x10 x11 x12 x13 x14 x15 x16 x17 x18 x19 x20 x21 (idx_main_v129 i) := by
  unfold val_main_v129
  generalize val_main_v107 (F := F) x0 x1 x2 x3 x4 x5 x6 x7 x8 x9 x10 x11 x12 x13 x14 x15 x16 x17 x18 x19 x20 x21 = y
  exact extractStridedSlice_apply ![0, 0, 1, 0] y slices_S1024x8x2x128_S1024x8x1x128_0_0_1_0 i (idx_main_v129 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v130 : (⟨S1024x8x128, .f32⟩ : BufTy).Contents (Elt F) :=
  shapeCast _ (val_main_v129 (F := F) x0 x1 x2 x3 x4 x5 x6 x7 x8 x9 x10 x11 x12 x13 x14 x15 x16 x17 x18 x19 x20 x21) shapeCasts_S1024x8x1x128_S1024x8x128
abbrev idx_main_v130 (i : S1024x8x128.Idx) : S1024x8x1x128.Idx := fun a => match a with
  | ⟨0, _⟩ => ⟨(((i 0).val * 8 + (i 1).val) * 128 + (i 2).val) / 1024, by have h0 : (i 0).val < 1024 := (i 0).isLt; have h1 : (i 1).val < 8 := (i 1).isLt; have h2 : (i 2).val < 128 := (i 2).isLt; show (((i 0).val * 8 + (i 1).val) * 128 + (i 2).val) / 1024 < 1024; omega⟩
  | ⟨1, _⟩ => ⟨(((i 0).val * 8 + (i 1).val) * 128 + (i 2).val) / 128 % 8, by have h0 : (i 0).val < 1024 := (i 0).isLt; have h1 : (i 1).val < 8 := (i 1).isLt; have h2 : (i 2).val < 128 := (i 2).isLt; show (((i 0).val * 8 + (i 1).val) * 128 + (i 2).val) / 128 % 8 < 8; omega⟩
  | ⟨2, _⟩ => ⟨0, Nat.one_pos⟩
  | ⟨3, _⟩ => ⟨(((i 0).val * 8 + (i 1).val) * 128 + (i 2).val) % 128, by have h0 : (i 0).val < 1024 := (i 0).isLt; have h1 : (i 1).val < 8 := (i 1).isLt; have h2 : (i 2).val < 128 := (i 2).isLt; show (((i 0).val * 8 + (i 1).val) * 128 + (i 2).val) % 128 < 128; omega⟩
theorem val_main_v130_apply (i : S1024x8x128.Idx) :
    val_main_v130 (F := F) x0 x1 x2 x3 x4 x5 x6 x7 x8 x9 x10 x11 x12 x13 x14 x15 x16 x17 x18 x19 x20 x21 i = val_main_v129 (F := F) x0 x1 x2 x3 x4 x5 x6 x7 x8 x9 x10 x11 x12 x13 x14 x15 x16 x17 x18 x19 x20 x21 (idx_main_v130 i) := by
  unfold val_main_v130
  generalize val_main_v129 (F := F) x0 x1 x2 x3 x4 x5 x6 x7 x8 x9 x10 x11 x12 x13 x14 x15 x16 x17 x18 x19 x20 x21 = y
  exact shapeCast_apply y shapeCasts_S1024x8x1x128_S1024x8x128 i (idx_main_v130 i)
    (by rewrite [Shape.rowMajor_val_four, Shape.rowMajor_val_three]; have h0 : (i 0).val < 1024 := (i 0).isLt; have h1 : (i 1).val < 8 := (i 1).isLt; have h2 : (i 2).val < 128 := (i 2).isLt; show (((((i 0).val * 8 + (i 1).val) * 128 + (i 2).val) / 1024 * 8 + (((i 0).val * 8 + (i 1).val) * 128 + (i 2).val) / 128 % 8) * 1 + 0) * 128 + (((i 0).val * 8 + (i 1).val) * 128 + (i 2).val) % 128 = ((i 0).val * 8 + (i 1).val) * 128 + (i 2).val; omega)

def val_main_v131 : (⟨S1024x8x128, .f32⟩ : BufTy).Contents (Elt F) :=
  broadcastInDim S1024x8x128 ![0, 1, 2] bcast_S1024x8x1_S1024x8x128_0_1_2 (val_main_v113 (F := F) x7)
abbrev idx_main_v131 (i : S1024x8x128.Idx) : S1024x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v131_apply (i : S1024x8x128.Idx) :
    val_main_v131 (F := F) x7 i = val_main_v113 (F := F) x7 (idx_main_v131 i) := by
  unfold val_main_v131
  generalize val_main_v113 (F := F) x7 = y
  exact broadcastInDim_apply _ bcast_S1024x8x1_S1024x8x128_0_1_2 y i (idx_main_v131 i) (fun a => match a with
    | ⟨0, _⟩ => by show (i 0).val = if (1024 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

def val_main_v132 : (⟨S1024x8x128, .f32⟩ : BufTy).Contents (Elt F) :=
  mulf (val_main_v130 (F := F) x0 x1 x2 x3 x4 x5 x6 x7 x8 x9 x10 x11 x12 x13 x14 x15 x16 x17 x18 x19 x20 x21) (val_main_v131 (F := F) x7)
theorem val_main_v132_apply (i : S1024x8x128.Idx) :
    val_main_v132 (F := F) x0 x1 x2 x3 x4 x5 x6 x7 x8 x9 x10 x11 x12 x13 x14 x15 x16 x17 x18 x19 x20 x21 i = FloatOps.mulf (val_main_v130 (F := F) x0 x1 x2 x3 x4 x5 x6 x7 x8 x9 x10 x11 x12 x13 x14 x15 x16 x17 x18 x19 x20 x21 i) (val_main_v131 (F := F) x7 i) := rfl

def val_main_v133 : (⟨S8192x128, .f32⟩ : BufTy).Contents (Elt F) :=
  shapeCast _ (val_main_v132 (F := F) x0 x1 x2 x3 x4 x5 x6 x7 x8 x9 x10 x11 x12 x13 x14 x15 x16 x17 x18 x19 x20 x21) shapeCasts_S1024x8x128_S8192x128
abbrev idx_main_v133 (i : S8192x128.Idx) : S1024x8x128.Idx := fun a => match a with
  | ⟨0, _⟩ => ⟨((i 0).val * 128 + (i 1).val) / 1024, by have h0 : (i 0).val < 8192 := (i 0).isLt; have h1 : (i 1).val < 128 := (i 1).isLt; show ((i 0).val * 128 + (i 1).val) / 1024 < 1024; omega⟩
  | ⟨1, _⟩ => ⟨((i 0).val * 128 + (i 1).val) / 128 % 8, by have h0 : (i 0).val < 8192 := (i 0).isLt; have h1 : (i 1).val < 128 := (i 1).isLt; show ((i 0).val * 128 + (i 1).val) / 128 % 8 < 8; omega⟩
  | ⟨2, _⟩ => ⟨((i 0).val * 128 + (i 1).val) % 128, by have h0 : (i 0).val < 8192 := (i 0).isLt; have h1 : (i 1).val < 128 := (i 1).isLt; show ((i 0).val * 128 + (i 1).val) % 128 < 128; omega⟩
theorem val_main_v133_apply (i : S8192x128.Idx) :
    val_main_v133 (F := F) x0 x1 x2 x3 x4 x5 x6 x7 x8 x9 x10 x11 x12 x13 x14 x15 x16 x17 x18 x19 x20 x21 i = val_main_v132 (F := F) x0 x1 x2 x3 x4 x5 x6 x7 x8 x9 x10 x11 x12 x13 x14 x15 x16 x17 x18 x19 x20 x21 (idx_main_v133 i) := by
  unfold val_main_v133
  generalize val_main_v132 (F := F) x0 x1 x2 x3 x4 x5 x6 x7 x8 x9 x10 x11 x12 x13 x14 x15 x16 x17 x18 x19 x20 x21 = y
  exact shapeCast_apply y shapeCasts_S1024x8x128_S8192x128 i (idx_main_v133 i)
    (by rewrite [Shape.rowMajor_val_three, Shape.rowMajor_val_two]; have h0 : (i 0).val < 8192 := (i 0).isLt; have h1 : (i 1).val < 128 := (i 1).isLt; show (((i 0).val * 128 + (i 1).val) / 1024 * 8 + ((i 0).val * 128 + (i 1).val) / 128 % 8) * 128 + ((i 0).val * 128 + (i 1).val) % 128 = (i 0).val * 128 + (i 1).val; omega)

def val_main_v134 : (⟨S1024x8x1x128, .f32⟩ : BufTy).Contents (Elt F) :=
  extractStridedSlice S1024x8x1x128 ![0, 0, 1, 0] (val_main_v108 (F := F) x0 x1 x2 x3 x4 x5 x6 x8 x9 x10 x11 x12 x13 x14 x15 x16 x17 x18 x19 x20 x21) slices_S1024x8x2x128_S1024x8x1x128_0_0_1_0
abbrev idx_main_v134 (i : S1024x8x1x128.Idx) : S1024x8x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v134_apply (i : S1024x8x1x128.Idx) :
    val_main_v134 (F := F) x0 x1 x2 x3 x4 x5 x6 x8 x9 x10 x11 x12 x13 x14 x15 x16 x17 x18 x19 x20 x21 i = val_main_v108 (F := F) x0 x1 x2 x3 x4 x5 x6 x8 x9 x10 x11 x12 x13 x14 x15 x16 x17 x18 x19 x20 x21 (idx_main_v134 i) := by
  unfold val_main_v134
  generalize val_main_v108 (F := F) x0 x1 x2 x3 x4 x5 x6 x8 x9 x10 x11 x12 x13 x14 x15 x16 x17 x18 x19 x20 x21 = y
  exact extractStridedSlice_apply ![0, 0, 1, 0] y slices_S1024x8x2x128_S1024x8x1x128_0_0_1_0 i (idx_main_v134 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v135 : (⟨S1024x8x128, .f32⟩ : BufTy).Contents (Elt F) :=
  shapeCast _ (val_main_v134 (F := F) x0 x1 x2 x3 x4 x5 x6 x8 x9 x10 x11 x12 x13 x14 x15 x16 x17 x18 x19 x20 x21) shapeCasts_S1024x8x1x128_S1024x8x128
abbrev idx_main_v135 (i : S1024x8x128.Idx) : S1024x8x1x128.Idx := fun a => match a with
  | ⟨0, _⟩ => ⟨(((i 0).val * 8 + (i 1).val) * 128 + (i 2).val) / 1024, by have h0 : (i 0).val < 1024 := (i 0).isLt; have h1 : (i 1).val < 8 := (i 1).isLt; have h2 : (i 2).val < 128 := (i 2).isLt; show (((i 0).val * 8 + (i 1).val) * 128 + (i 2).val) / 1024 < 1024; omega⟩
  | ⟨1, _⟩ => ⟨(((i 0).val * 8 + (i 1).val) * 128 + (i 2).val) / 128 % 8, by have h0 : (i 0).val < 1024 := (i 0).isLt; have h1 : (i 1).val < 8 := (i 1).isLt; have h2 : (i 2).val < 128 := (i 2).isLt; show (((i 0).val * 8 + (i 1).val) * 128 + (i 2).val) / 128 % 8 < 8; omega⟩
  | ⟨2, _⟩ => ⟨0, Nat.one_pos⟩
  | ⟨3, _⟩ => ⟨(((i 0).val * 8 + (i 1).val) * 128 + (i 2).val) % 128, by have h0 : (i 0).val < 1024 := (i 0).isLt; have h1 : (i 1).val < 8 := (i 1).isLt; have h2 : (i 2).val < 128 := (i 2).isLt; show (((i 0).val * 8 + (i 1).val) * 128 + (i 2).val) % 128 < 128; omega⟩
theorem val_main_v135_apply (i : S1024x8x128.Idx) :
    val_main_v135 (F := F) x0 x1 x2 x3 x4 x5 x6 x8 x9 x10 x11 x12 x13 x14 x15 x16 x17 x18 x19 x20 x21 i = val_main_v134 (F := F) x0 x1 x2 x3 x4 x5 x6 x8 x9 x10 x11 x12 x13 x14 x15 x16 x17 x18 x19 x20 x21 (idx_main_v135 i) := by
  unfold val_main_v135
  generalize val_main_v134 (F := F) x0 x1 x2 x3 x4 x5 x6 x8 x9 x10 x11 x12 x13 x14 x15 x16 x17 x18 x19 x20 x21 = y
  exact shapeCast_apply y shapeCasts_S1024x8x1x128_S1024x8x128 i (idx_main_v135 i)
    (by rewrite [Shape.rowMajor_val_four, Shape.rowMajor_val_three]; have h0 : (i 0).val < 1024 := (i 0).isLt; have h1 : (i 1).val < 8 := (i 1).isLt; have h2 : (i 2).val < 128 := (i 2).isLt; show (((((i 0).val * 8 + (i 1).val) * 128 + (i 2).val) / 1024 * 8 + (((i 0).val * 8 + (i 1).val) * 128 + (i 2).val) / 128 % 8) * 1 + 0) * 128 + (((i 0).val * 8 + (i 1).val) * 128 + (i 2).val) % 128 = ((i 0).val * 8 + (i 1).val) * 128 + (i 2).val; omega)

def val_main_v136 : (⟨S1024x8x128, .f32⟩ : BufTy).Contents (Elt F) :=
  broadcastInDim S1024x8x128 ![0, 1, 2] bcast_S1024x8x1_S1024x8x128_0_1_2 (val_main_v113 (F := F) x7)
abbrev idx_main_v136 (i : S1024x8x128.Idx) : S1024x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v136_apply (i : S1024x8x128.Idx) :
    val_main_v136 (F := F) x7 i = val_main_v113 (F := F) x7 (idx_main_v136 i) := by
  unfold val_main_v136
  generalize val_main_v113 (F := F) x7 = y
  exact broadcastInDim_apply _ bcast_S1024x8x1_S1024x8x128_0_1_2 y i (idx_main_v136 i) (fun a => match a with
    | ⟨0, _⟩ => by show (i 0).val = if (1024 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

def val_main_v137 : (⟨S1024x8x128, .f32⟩ : BufTy).Contents (Elt F) :=
  mulf (val_main_v135 (F := F) x0 x1 x2 x3 x4 x5 x6 x8 x9 x10 x11 x12 x13 x14 x15 x16 x17 x18 x19 x20 x21) (val_main_v136 (F := F) x7)
theorem val_main_v137_apply (i : S1024x8x128.Idx) :
    val_main_v137 (F := F) x0 x1 x2 x3 x4 x5 x6 x7 x8 x9 x10 x11 x12 x13 x14 x15 x16 x17 x18 x19 x20 x21 i = FloatOps.mulf (val_main_v135 (F := F) x0 x1 x2 x3 x4 x5 x6 x8 x9 x10 x11 x12 x13 x14 x15 x16 x17 x18 x19 x20 x21 i) (val_main_v136 (F := F) x7 i) := rfl

def val_main_v138 : (⟨S8192x128, .f32⟩ : BufTy).Contents (Elt F) :=
  shapeCast _ (val_main_v137 (F := F) x0 x1 x2 x3 x4 x5 x6 x7 x8 x9 x10 x11 x12 x13 x14 x15 x16 x17 x18 x19 x20 x21) shapeCasts_S1024x8x128_S8192x128
abbrev idx_main_v138 (i : S8192x128.Idx) : S1024x8x128.Idx := fun a => match a with
  | ⟨0, _⟩ => ⟨((i 0).val * 128 + (i 1).val) / 1024, by have h0 : (i 0).val < 8192 := (i 0).isLt; have h1 : (i 1).val < 128 := (i 1).isLt; show ((i 0).val * 128 + (i 1).val) / 1024 < 1024; omega⟩
  | ⟨1, _⟩ => ⟨((i 0).val * 128 + (i 1).val) / 128 % 8, by have h0 : (i 0).val < 8192 := (i 0).isLt; have h1 : (i 1).val < 128 := (i 1).isLt; show ((i 0).val * 128 + (i 1).val) / 128 % 8 < 8; omega⟩
  | ⟨2, _⟩ => ⟨((i 0).val * 128 + (i 1).val) % 128, by have h0 : (i 0).val < 8192 := (i 0).isLt; have h1 : (i 1).val < 128 := (i 1).isLt; show ((i 0).val * 128 + (i 1).val) % 128 < 128; omega⟩
theorem val_main_v138_apply (i : S8192x128.Idx) :
    val_main_v138 (F := F) x0 x1 x2 x3 x4 x5 x6 x7 x8 x9 x10 x11 x12 x13 x14 x15 x16 x17 x18 x19 x20 x21 i = val_main_v137 (F := F) x0 x1 x2 x3 x4 x5 x6 x7 x8 x9 x10 x11 x12 x13 x14 x15 x16 x17 x18 x19 x20 x21 (idx_main_v138 i) := by
  unfold val_main_v138
  generalize val_main_v137 (F := F) x0 x1 x2 x3 x4 x5 x6 x7 x8 x9 x10 x11 x12 x13 x14 x15 x16 x17 x18 x19 x20 x21 = y
  exact shapeCast_apply y shapeCasts_S1024x8x128_S8192x128 i (idx_main_v138 i)
    (by rewrite [Shape.rowMajor_val_three, Shape.rowMajor_val_two]; have h0 : (i 0).val < 8192 := (i 0).isLt; have h1 : (i 1).val < 128 := (i 1).isLt; show (((i 0).val * 128 + (i 1).val) / 1024 * 8 + ((i 0).val * 128 + (i 1).val) / 128 % 8) * 128 + ((i 0).val * 128 + (i 1).val) % 128 = (i 0).val * 128 + (i 1).val; omega)

def val_main_v139 : (⟨S1024x8x1x128, .f32⟩ : BufTy).Contents (Elt F) :=
  extractStridedSlice S1024x8x1x128 ![0, 0, 1, 0] (val_main_v109 (F := F) x0 x1 x2 x3 x4 x5 x7 x8 x9 x10 x11 x12 x13 x14 x15 x16 x17 x18 x19 x20 x21) slices_S1024x8x2x128_S1024x8x1x128_0_0_1_0
abbrev idx_main_v139 (i : S1024x8x1x128.Idx) : S1024x8x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v139_apply (i : S1024x8x1x128.Idx) :
    val_main_v139 (F := F) x0 x1 x2 x3 x4 x5 x7 x8 x9 x10 x11 x12 x13 x14 x15 x16 x17 x18 x19 x20 x21 i = val_main_v109 (F := F) x0 x1 x2 x3 x4 x5 x7 x8 x9 x10 x11 x12 x13 x14 x15 x16 x17 x18 x19 x20 x21 (idx_main_v139 i) := by
  unfold val_main_v139
  generalize val_main_v109 (F := F) x0 x1 x2 x3 x4 x5 x7 x8 x9 x10 x11 x12 x13 x14 x15 x16 x17 x18 x19 x20 x21 = y
  exact extractStridedSlice_apply ![0, 0, 1, 0] y slices_S1024x8x2x128_S1024x8x1x128_0_0_1_0 i (idx_main_v139 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v140 : (⟨S1024x8x128, .f32⟩ : BufTy).Contents (Elt F) :=
  shapeCast _ (val_main_v139 (F := F) x0 x1 x2 x3 x4 x5 x7 x8 x9 x10 x11 x12 x13 x14 x15 x16 x17 x18 x19 x20 x21) shapeCasts_S1024x8x1x128_S1024x8x128
abbrev idx_main_v140 (i : S1024x8x128.Idx) : S1024x8x1x128.Idx := fun a => match a with
  | ⟨0, _⟩ => ⟨(((i 0).val * 8 + (i 1).val) * 128 + (i 2).val) / 1024, by have h0 : (i 0).val < 1024 := (i 0).isLt; have h1 : (i 1).val < 8 := (i 1).isLt; have h2 : (i 2).val < 128 := (i 2).isLt; show (((i 0).val * 8 + (i 1).val) * 128 + (i 2).val) / 1024 < 1024; omega⟩
  | ⟨1, _⟩ => ⟨(((i 0).val * 8 + (i 1).val) * 128 + (i 2).val) / 128 % 8, by have h0 : (i 0).val < 1024 := (i 0).isLt; have h1 : (i 1).val < 8 := (i 1).isLt; have h2 : (i 2).val < 128 := (i 2).isLt; show (((i 0).val * 8 + (i 1).val) * 128 + (i 2).val) / 128 % 8 < 8; omega⟩
  | ⟨2, _⟩ => ⟨0, Nat.one_pos⟩
  | ⟨3, _⟩ => ⟨(((i 0).val * 8 + (i 1).val) * 128 + (i 2).val) % 128, by have h0 : (i 0).val < 1024 := (i 0).isLt; have h1 : (i 1).val < 8 := (i 1).isLt; have h2 : (i 2).val < 128 := (i 2).isLt; show (((i 0).val * 8 + (i 1).val) * 128 + (i 2).val) % 128 < 128; omega⟩
theorem val_main_v140_apply (i : S1024x8x128.Idx) :
    val_main_v140 (F := F) x0 x1 x2 x3 x4 x5 x7 x8 x9 x10 x11 x12 x13 x14 x15 x16 x17 x18 x19 x20 x21 i = val_main_v139 (F := F) x0 x1 x2 x3 x4 x5 x7 x8 x9 x10 x11 x12 x13 x14 x15 x16 x17 x18 x19 x20 x21 (idx_main_v140 i) := by
  unfold val_main_v140
  generalize val_main_v139 (F := F) x0 x1 x2 x3 x4 x5 x7 x8 x9 x10 x11 x12 x13 x14 x15 x16 x17 x18 x19 x20 x21 = y
  exact shapeCast_apply y shapeCasts_S1024x8x1x128_S1024x8x128 i (idx_main_v140 i)
    (by rewrite [Shape.rowMajor_val_four, Shape.rowMajor_val_three]; have h0 : (i 0).val < 1024 := (i 0).isLt; have h1 : (i 1).val < 8 := (i 1).isLt; have h2 : (i 2).val < 128 := (i 2).isLt; show (((((i 0).val * 8 + (i 1).val) * 128 + (i 2).val) / 1024 * 8 + (((i 0).val * 8 + (i 1).val) * 128 + (i 2).val) / 128 % 8) * 1 + 0) * 128 + (((i 0).val * 8 + (i 1).val) * 128 + (i 2).val) % 128 = ((i 0).val * 8 + (i 1).val) * 128 + (i 2).val; omega)

def val_main_v141 : (⟨S1024x8x128, .f32⟩ : BufTy).Contents (Elt F) :=
  broadcastInDim S1024x8x128 ![0, 1, 2] bcast_S1024x8x1_S1024x8x128_0_1_2 (val_main_v113 (F := F) x7)
abbrev idx_main_v141 (i : S1024x8x128.Idx) : S1024x8x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v141_apply (i : S1024x8x128.Idx) :
    val_main_v141 (F := F) x7 i = val_main_v113 (F := F) x7 (idx_main_v141 i) := by
  unfold val_main_v141
  generalize val_main_v113 (F := F) x7 = y
  exact broadcastInDim_apply _ bcast_S1024x8x1_S1024x8x128_0_1_2 y i (idx_main_v141 i) (fun a => match a with
    | ⟨0, _⟩ => by show (i 0).val = if (1024 : Nat) = 1 then 0 else (i 0).val; rw [if_neg (by decide)]
    | ⟨1, _⟩ => by show (i 1).val = if (8 : Nat) = 1 then 0 else (i 1).val; rw [if_neg (by decide)]
    | ⟨2, _⟩ => by show 0 = if (1 : Nat) = 1 then 0 else (i 2).val; rw [if_pos rfl])

def val_main_v142 : (⟨S1024x8x128, .f32⟩ : BufTy).Contents (Elt F) :=
  mulf (val_main_v140 (F := F) x0 x1 x2 x3 x4 x5 x7 x8 x9 x10 x11 x12 x13 x14 x15 x16 x17 x18 x19 x20 x21) (val_main_v141 (F := F) x7)
theorem val_main_v142_apply (i : S1024x8x128.Idx) :
    val_main_v142 (F := F) x0 x1 x2 x3 x4 x5 x7 x8 x9 x10 x11 x12 x13 x14 x15 x16 x17 x18 x19 x20 x21 i = FloatOps.mulf (val_main_v140 (F := F) x0 x1 x2 x3 x4 x5 x7 x8 x9 x10 x11 x12 x13 x14 x15 x16 x17 x18 x19 x20 x21 i) (val_main_v141 (F := F) x7 i) := rfl

def val_main_v143 : (⟨S8192x128, .f32⟩ : BufTy).Contents (Elt F) :=
  shapeCast _ (val_main_v142 (F := F) x0 x1 x2 x3 x4 x5 x7 x8 x9 x10 x11 x12 x13 x14 x15 x16 x17 x18 x19 x20 x21) shapeCasts_S1024x8x128_S8192x128
abbrev idx_main_v143 (i : S8192x128.Idx) : S1024x8x128.Idx := fun a => match a with
  | ⟨0, _⟩ => ⟨((i 0).val * 128 + (i 1).val) / 1024, by have h0 : (i 0).val < 8192 := (i 0).isLt; have h1 : (i 1).val < 128 := (i 1).isLt; show ((i 0).val * 128 + (i 1).val) / 1024 < 1024; omega⟩
  | ⟨1, _⟩ => ⟨((i 0).val * 128 + (i 1).val) / 128 % 8, by have h0 : (i 0).val < 8192 := (i 0).isLt; have h1 : (i 1).val < 128 := (i 1).isLt; show ((i 0).val * 128 + (i 1).val) / 128 % 8 < 8; omega⟩
  | ⟨2, _⟩ => ⟨((i 0).val * 128 + (i 1).val) % 128, by have h0 : (i 0).val < 8192 := (i 0).isLt; have h1 : (i 1).val < 128 := (i 1).isLt; show ((i 0).val * 128 + (i 1).val) % 128 < 128; omega⟩
theorem val_main_v143_apply (i : S8192x128.Idx) :
    val_main_v143 (F := F) x0 x1 x2 x3 x4 x5 x7 x8 x9 x10 x11 x12 x13 x14 x15 x16 x17 x18 x19 x20 x21 i = val_main_v142 (F := F) x0 x1 x2 x3 x4 x5 x7 x8 x9 x10 x11 x12 x13 x14 x15 x16 x17 x18 x19 x20 x21 (idx_main_v143 i) := by
  unfold val_main_v143
  generalize val_main_v142 (F := F) x0 x1 x2 x3 x4 x5 x7 x8 x9 x10 x11 x12 x13 x14 x15 x16 x17 x18 x19 x20 x21 = y
  exact shapeCast_apply y shapeCasts_S1024x8x128_S8192x128 i (idx_main_v143 i)
    (by rewrite [Shape.rowMajor_val_three, Shape.rowMajor_val_two]; have h0 : (i 0).val < 8192 := (i 0).isLt; have h1 : (i 1).val < 128 := (i 1).isLt; show (((i 0).val * 128 + (i 1).val) / 1024 * 8 + ((i 0).val * 128 + (i 1).val) / 128 % 8) * 128 + ((i 0).val * 128 + (i 1).val) % 128 = (i 0).val * 128 + (i 1).val; omega)

def val_main_v144 : (⟨S8192x128, .f32⟩ : BufTy).Contents (Elt F) :=
  extractStridedSlice S8192x128 ![7168, 0] (val_main_v3 (F := F) x0 x8 x9) slices_S64512x128_S8192x128_7168_0
abbrev idx_main_v144 (i : S8192x128.Idx) : S64512x128.Idx := fun a => match a with
  | ⟨0, _⟩ => ⟨7168 + (i 0).val, by have h0 : (i 0).val < 8192 := (i 0).isLt; show 7168 + (i 0).val < 64512; omega⟩
  | ⟨1, _⟩ => ⟨(i 1).val, (i 1).isLt⟩
theorem val_main_v144_apply (i : S8192x128.Idx) :
    val_main_v144 (F := F) x0 x8 x9 i = val_main_v3 (F := F) x0 x8 x9 (idx_main_v144 i) := by
  unfold val_main_v144
  generalize val_main_v3 (F := F) x0 x8 x9 = y
  exact extractStridedSlice_apply ![7168, 0] y slices_S64512x128_S8192x128_7168_0 i (idx_main_v144 i) (fun a => match a with
    | ⟨0, _⟩ => by show 7168 + (i 0).val = 7168 + (i 0).val; omega
    | ⟨1, _⟩ => by show (i 1).val = 0 + (i 1).val; omega)

def val_main_v145 : (⟨S8192x128, .f32⟩ : BufTy).Contents (Elt F) :=
  extractStridedSlice S8192x128 ![7168, 0] (val_main_v7 (F := F) x1 x10 x11) slices_S64512x128_S8192x128_7168_0
abbrev idx_main_v145 (i : S8192x128.Idx) : S64512x128.Idx := fun a => match a with
  | ⟨0, _⟩ => ⟨7168 + (i 0).val, by have h0 : (i 0).val < 8192 := (i 0).isLt; show 7168 + (i 0).val < 64512; omega⟩
  | ⟨1, _⟩ => ⟨(i 1).val, (i 1).isLt⟩
theorem val_main_v145_apply (i : S8192x128.Idx) :
    val_main_v145 (F := F) x1 x10 x11 i = val_main_v7 (F := F) x1 x10 x11 (idx_main_v145 i) := by
  unfold val_main_v145
  generalize val_main_v7 (F := F) x1 x10 x11 = y
  exact extractStridedSlice_apply ![7168, 0] y slices_S64512x128_S8192x128_7168_0 i (idx_main_v145 i) (fun a => match a with
    | ⟨0, _⟩ => by show 7168 + (i 0).val = 7168 + (i 0).val; omega
    | ⟨1, _⟩ => by show (i 1).val = 0 + (i 1).val; omega)

def val_main_v146 : (⟨S8192x128, .f32⟩ : BufTy).Contents (Elt F) :=
  extractStridedSlice S8192x128 ![7168, 0] (val_main_v19 (F := F) x3 x14 x15) slices_S64512x128_S8192x128_7168_0
abbrev idx_main_v146 (i : S8192x128.Idx) : S64512x128.Idx := fun a => match a with
  | ⟨0, _⟩ => ⟨7168 + (i 0).val, by have h0 : (i 0).val < 8192 := (i 0).isLt; show 7168 + (i 0).val < 64512; omega⟩
  | ⟨1, _⟩ => ⟨(i 1).val, (i 1).isLt⟩
theorem val_main_v146_apply (i : S8192x128.Idx) :
    val_main_v146 (F := F) x3 x14 x15 i = val_main_v19 (F := F) x3 x14 x15 (idx_main_v146 i) := by
  unfold val_main_v146
  generalize val_main_v19 (F := F) x3 x14 x15 = y
  exact extractStridedSlice_apply ![7168, 0] y slices_S64512x128_S8192x128_7168_0 i (idx_main_v146 i) (fun a => match a with
    | ⟨0, _⟩ => by show 7168 + (i 0).val = 7168 + (i 0).val; omega
    | ⟨1, _⟩ => by show (i 1).val = 0 + (i 1).val; omega)

def val_main_v147 : (⟨S8192x128, .f32⟩ : BufTy).Contents (Elt F) :=
  extractStridedSlice S8192x128 ![7168, 0] (val_main_v24 (F := F) x4 x14 x15) slices_S64512x128_S8192x128_7168_0
abbrev idx_main_v147 (i : S8192x128.Idx) : S64512x128.Idx := fun a => match a with
  | ⟨0, _⟩ => ⟨7168 + (i 0).val, by have h0 : (i 0).val < 8192 := (i 0).isLt; show 7168 + (i 0).val < 64512; omega⟩
  | ⟨1, _⟩ => ⟨(i 1).val, (i 1).isLt⟩
theorem val_main_v147_apply (i : S8192x128.Idx) :
    val_main_v147 (F := F) x4 x14 x15 i = val_main_v24 (F := F) x4 x14 x15 (idx_main_v147 i) := by
  unfold val_main_v147
  generalize val_main_v24 (F := F) x4 x14 x15 = y
  exact extractStridedSlice_apply ![7168, 0] y slices_S64512x128_S8192x128_7168_0 i (idx_main_v147 i) (fun a => match a with
    | ⟨0, _⟩ => by show 7168 + (i 0).val = 7168 + (i 0).val; omega
    | ⟨1, _⟩ => by show (i 1).val = 0 + (i 1).val; omega)

def val_main_v148 : (⟨S8192x128, .f32⟩ : BufTy).Contents (Elt F) :=
  extractStridedSlice S8192x128 ![7168, 0] (val_main_v14 (F := F) x2 x5 x12 x13) slices_S64512x128_S8192x128_7168_0
abbrev idx_main_v148 (i : S8192x128.Idx) : S64512x128.Idx := fun a => match a with
  | ⟨0, _⟩ => ⟨7168 + (i 0).val, by have h0 : (i 0).val < 8192 := (i 0).isLt; show 7168 + (i 0).val < 64512; omega⟩
  | ⟨1, _⟩ => ⟨(i 1).val, (i 1).isLt⟩
theorem val_main_v148_apply (i : S8192x128.Idx) :
    val_main_v148 (F := F) x2 x5 x12 x13 i = val_main_v14 (F := F) x2 x5 x12 x13 (idx_main_v148 i) := by
  unfold val_main_v148
  generalize val_main_v14 (F := F) x2 x5 x12 x13 = y
  exact extractStridedSlice_apply ![7168, 0] y slices_S64512x128_S8192x128_7168_0 i (idx_main_v148 i) (fun a => match a with
    | ⟨0, _⟩ => by show 7168 + (i 0).val = 7168 + (i 0).val; omega
    | ⟨1, _⟩ => by show (i 1).val = 0 + (i 1).val; omega)

def val_main_v149 : (⟨S8192x1408, .f32⟩ : BufTy).Contents (Elt F) :=
  concatenate S8192x1408 1 [⟨S8192x128, (val_main_v144 (F := F) x0 x8 x9)⟩, ⟨S8192x128, (val_main_v145 (F := F) x1 x10 x11)⟩, ⟨S8192x128, (val_main_v146 (F := F) x3 x14 x15)⟩, ⟨S8192x128, (val_main_v147 (F := F) x4 x14 x15)⟩, ⟨S8192x128, (val_main_v148 (F := F) x2 x5 x12 x13)⟩, ⟨S8192x128, (val_main_v118 (F := F) x0 x1 x2 x3 x4 x5 x6 x7 x8 x9 x10 x11 x12 x13 x14 x15 x16 x17 x18 x19 x20 x21)⟩, ⟨S8192x128, (val_main_v133 (F := F) x0 x1 x2 x3 x4 x5 x6 x7 x8 x9 x10 x11 x12 x13 x14 x15 x16 x17 x18 x19 x20 x21)⟩, ⟨S8192x128, (val_main_v123 (F := F) x0 x1 x2 x3 x4 x5 x6 x8 x9 x10 x11 x12 x13 x14 x15 x16 x17 x18 x19 x20 x21)⟩, ⟨S8192x128, (val_main_v128 (F := F) x0 x1 x2 x3 x4 x5 x6 x7 x8 x9 x10 x11 x12 x13 x14 x15 x16 x17 x18 x19 x20 x21)⟩, ⟨S8192x128, (val_main_v138 (F := F) x0 x1 x2 x3 x4 x5 x6 x7 x8 x9 x10 x11 x12 x13 x14 x15 x16 x17 x18 x19 x20 x21)⟩, ⟨S8192x128, (val_main_v143 (F := F) x0 x1 x2 x3 x4 x5 x7 x8 x9 x10 x11 x12 x13 x14 x15 x16 x17 x18 x19 x20 x21)⟩] concatenates_S8192x128_S8192x128_S8192x128_S8192x128_S8192x128_S8192x128_S8192x128_S8192x128_S8192x128_S8192x128_S8192x128_S8192x1408_d1

def val_main_v150 : (⟨S8192x512, .f32⟩ : BufTy).Contents (Elt F) :=
  Host.dotGeneral dot_S8192x1408_S1408x512_S8192x512_1_0_0_1_n_n none (val_main_v149 (F := F) x0 x1 x2 x3 x4 x5 x6 x7 x8 x9 x10 x11 x12 x13 x14 x15 x16 x17 x18 x19 x20 x21) (x16)
theorem lhs_main_v150_0 (i : S8192x512.Idx) (q : dot_S8192x1408_S1408x512_S8192x512_1_0_0_1_n_n.contr.Idx) :
    (dot_S8192x1408_S1408x512_S8192x512_1_0_0_1_n_n.lhsIdx i q 0).val = (i 0).val := by
  unfold DotDims.lhsIdx
  rw [dif_neg (show ¬(0 : Fin S8192x1408.rank) ∈ dot_S8192x1408_S1408x512_S8192x512_1_0_0_1_n_n.lhsBatch by decide), dif_pos (show (0 : Fin S8192x1408.rank) ∈ dot_S8192x1408_S1408x512_S8192x512_1_0_0_1_n_n.lhsNonContracting by decide)]
  rfl
theorem lhs_main_v150_1 (i : S8192x512.Idx) (q : dot_S8192x1408_S1408x512_S8192x512_1_0_0_1_n_n.contr.Idx) :
    (dot_S8192x1408_S1408x512_S8192x512_1_0_0_1_n_n.lhsIdx i q 1).val = (q ⟨0, by decide⟩).val :=
  dot_S8192x1408_S1408x512_S8192x512_1_0_0_1_n_n.lhsIdx_val_of_single rfl i q
theorem rhs_main_v150_0 (i : S8192x512.Idx) (q : dot_S8192x1408_S1408x512_S8192x512_1_0_0_1_n_n.contr.Idx) :
    (dot_S8192x1408_S1408x512_S8192x512_1_0_0_1_n_n.rhsIdx i q 0).val = (q ⟨0, by decide⟩).val :=
  dot_S8192x1408_S1408x512_S8192x512_1_0_0_1_n_n.rhsIdx_val_of_single rfl i q
theorem rhs_main_v150_1 (i : S8192x512.Idx) (q : dot_S8192x1408_S1408x512_S8192x512_1_0_0_1_n_n.contr.Idx) :
    (dot_S8192x1408_S1408x512_S8192x512_1_0_0_1_n_n.rhsIdx i q 1).val = (i 1).val := by
  unfold DotDims.rhsIdx
  rw [dif_neg (show ¬(1 : Fin S1408x512.rank) ∈ dot_S8192x1408_S1408x512_S8192x512_1_0_0_1_n_n.rhsBatch by decide), dif_pos (show (1 : Fin S1408x512.rank) ∈ dot_S8192x1408_S1408x512_S8192x512_1_0_0_1_n_n.rhsNonContracting by decide)]
  rfl
abbrev lidx_main_v150 (i : S8192x512.Idx) (k : Fin 1408) : S8192x1408.Idx := fun a => match a with
  | ⟨0, _⟩ => ⟨(i 0).val, (i 0).isLt⟩
  | ⟨1, _⟩ => ⟨k.val, k.isLt⟩
abbrev ridx_main_v150 (i : S8192x512.Idx) (k : Fin 1408) : S1408x512.Idx := fun a => match a with
  | ⟨0, _⟩ => ⟨k.val, k.isLt⟩
  | ⟨1, _⟩ => ⟨(i 1).val, (i 1).isLt⟩

theorem val_main_v150_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S8192x512.Idx) :
    val_main_v150 (F := Ideal) x0 x1 x2 x3 x4 x5 x6 x7 x8 x9 x10 x11 x12 x13 x14 x15 x16 x17 x18 x19 x20 x21 i = ∑ k : Fin 1408, (val_main_v149 (F := Ideal) x0 x1 x2 x3 x4 x5 x6 x7 x8 x9 x10 x11 x12 x13 x14 x15 x16 x17 x18 x19 x20 x21) (lidx_main_v150 i k) * x16 (ridx_main_v150 i k) := by
  unfold val_main_v150
  generalize val_main_v149 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S8192x1408_S1408x512_S8192x512_1_0_0_1_n_n 1408 rfl rfl).symm]
  refine Finset.sum_congr rfl fun k _ => ?_
  have hk := ValueIdx.contrEquiv1_symm_val dot_S8192x1408_S1408x512_S8192x512_1_0_0_1_n_n 1408 rfl rfl k
  have el : dot_S8192x1408_S1408x512_S8192x512_1_0_0_1_n_n.lhsIdx i ((ValueIdx.contrEquiv1 dot_S8192x1408_S1408x512_S8192x512_1_0_0_1_n_n 1408 rfl rfl).symm k) = lidx_main_v150 i k := funext fun a => Fin.ext (by
    match a with
    | ⟨0, _⟩ => exact lhs_main_v150_0 _ _
    | ⟨1, _⟩ => exact (lhs_main_v150_1 _ _).trans hk)
  have er : dot_S8192x1408_S1408x512_S8192x512_1_0_0_1_n_n.rhsIdx i ((ValueIdx.contrEquiv1 dot_S8192x1408_S1408x512_S8192x512_1_0_0_1_n_n 1408 rfl rfl).symm k) = ridx_main_v150 i k := funext fun a => Fin.ext (by
    match a with
    | ⟨0, _⟩ => exact (rhs_main_v150_0 _ _).trans hk
    | ⟨1, _⟩ => exact rhs_main_v150_1 _ _)
  rw [el, er]

def val_main_v151 : (⟨S1x512, .f32⟩ : BufTy).Contents (Elt F) :=
  broadcastInDim S1x512 ![1] bcast_S512_S1x512_1 (x17)
abbrev idx_main_v151 (i : S1x512.Idx) : S512.Idx := fun a => match a with
  | ⟨0, _⟩ => ⟨(i 1).val, (i 1).isLt⟩
theorem val_main_v151_apply (i : S1x512.Idx) :
    val_main_v151 (F := F) x17 i = x17 (idx_main_v151 i) := by
  unfold val_main_v151
  exact broadcastInDim_apply _ bcast_S512_S1x512_1 x17 i (idx_main_v151 i) (fun a => match a with
    | ⟨0, _⟩ => by show (i 1).val = if (512 : Nat) = 1 then 0 else (i 1).val; rw [if_neg (by decide)])

def val_main_v152 : (⟨S8192x512, .f32⟩ : BufTy).Contents (Elt F) :=
  broadcastInDim S8192x512 ![0, 1] bcast_S1x512_S8192x512_0_1 (val_main_v151 (F := F) x17)
abbrev idx_main_v152 (i : S8192x512.Idx) : S1x512.Idx := fun a => match a with
  | ⟨0, _⟩ => ⟨0, Nat.one_pos⟩
  | ⟨1, _⟩ => ⟨(i 1).val, (i 1).isLt⟩
theorem val_main_v152_apply (i : S8192x512.Idx) :
    val_main_v152 (F := F) x17 i = val_main_v151 (F := F) x17 (idx_main_v152 i) := by
  unfold val_main_v152
  generalize val_main_v151 (F := F) x17 = y
  exact broadcastInDim_apply _ bcast_S1x512_S8192x512_0_1 y i (idx_main_v152 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v153 : (⟨S8192x512, .f32⟩ : BufTy).Contents (Elt F) :=
  addf (val_main_v150 (F := F) x0 x1 x2 x3 x4 x5 x6 x7 x8 x9 x10 x11 x12 x13 x14 x15 x16 x17 x18 x19 x20 x21) (val_main_v152 (F := F) x17)
theorem val_main_v153_apply (i : S8192x512.Idx) :
    val_main_v153 (F := F) x0 x1 x2 x3 x4 x5 x6 x7 x8 x9 x10 x11 x12 x13 x14 x15 x16 x17 x18 x19 x20 x21 i = FloatOps.addf (val_main_v150 (F := F) x0 x1 x2 x3 x4 x5 x6 x7 x8 x9 x10 x11 x12 x13 x14 x15 x16 x17 x18 x19 x20 x21 i) (val_main_v152 (F := F) x17 i) := rfl

def val_main_call6_cst : (⟨S_, .f32⟩ : BufTy).Contents (Elt F) :=
  constant S_ .f32 0x00000000#32
theorem val_main_call6_cst_apply (i : S_.Idx) :
    val_main_call6_cst (F := F) i = FloatOps.ofBits .f32 0x00000000#32 := rfl

def val_main_call6_v0 : (⟨S8192x512, .f32⟩ : BufTy).Contents (Elt F) :=
  broadcastInDim S8192x512 ![] bcast_S_S8192x512 (val_main_call6_cst (F := F))
abbrev idx_main_call6_v0 (i : S8192x512.Idx) : S_.Idx := fun a => a.elim0
theorem val_main_call6_v0_apply (i : S8192x512.Idx) :
    val_main_call6_v0 (F := F) i = val_main_call6_cst (F := F) (idx_main_call6_v0 i) := by
  unfold val_main_call6_v0
  generalize val_main_call6_cst (F := F) = y
  exact broadcastInDim_apply _ bcast_S_S8192x512 y i (idx_main_call6_v0 i) (fun a => a.elim0)

def val_main_v154 : (⟨S8192x512, .f32⟩ : BufTy).Contents (Elt F) :=
  maximumf (val_main_v153 (F := F) x0 x1 x2 x3 x4 x5 x6 x7 x8 x9 x10 x11 x12 x13 x14 x15 x16 x17 x18 x19 x20 x21) (val_main_call6_v0 (F := F))
theorem val_main_v154_apply (i : S8192x512.Idx) :
    val_main_v154 (F := F) x0 x1 x2 x3 x4 x5 x6 x7 x8 x9 x10 x11 x12 x13 x14 x15 x16 x17 x18 x19 x20 x21 i = FloatOps.maximumf (val_main_v153 (F := F) x0 x1 x2 x3 x4 x5 x6 x7 x8 x9 x10 x11 x12 x13 x14 x15 x16 x17 x18 x19 x20 x21 i) (val_main_call6_v0 (F := F) i) := rfl

def val_main_v155 : (⟨S8192x256, .f32⟩ : BufTy).Contents (Elt F) :=
  Host.dotGeneral dot_S8192x512_S512x256_S8192x256_1_0_0_1_n_n none (val_main_v154 (F := F) x0 x1 x2 x3 x4 x5 x6 x7 x8 x9 x10 x11 x12 x13 x14 x15 x16 x17 x18 x19 x20 x21) (x18)
theorem lhs_main_v155_0 (i : S8192x256.Idx) (q : dot_S8192x512_S512x256_S8192x256_1_0_0_1_n_n.contr.Idx) :
    (dot_S8192x512_S512x256_S8192x256_1_0_0_1_n_n.lhsIdx i q 0).val = (i 0).val := by
  unfold DotDims.lhsIdx
  rw [dif_neg (show ¬(0 : Fin S8192x512.rank) ∈ dot_S8192x512_S512x256_S8192x256_1_0_0_1_n_n.lhsBatch by decide), dif_pos (show (0 : Fin S8192x512.rank) ∈ dot_S8192x512_S512x256_S8192x256_1_0_0_1_n_n.lhsNonContracting by decide)]
  rfl
theorem lhs_main_v155_1 (i : S8192x256.Idx) (q : dot_S8192x512_S512x256_S8192x256_1_0_0_1_n_n.contr.Idx) :
    (dot_S8192x512_S512x256_S8192x256_1_0_0_1_n_n.lhsIdx i q 1).val = (q ⟨0, by decide⟩).val :=
  dot_S8192x512_S512x256_S8192x256_1_0_0_1_n_n.lhsIdx_val_of_single rfl i q
theorem rhs_main_v155_0 (i : S8192x256.Idx) (q : dot_S8192x512_S512x256_S8192x256_1_0_0_1_n_n.contr.Idx) :
    (dot_S8192x512_S512x256_S8192x256_1_0_0_1_n_n.rhsIdx i q 0).val = (q ⟨0, by decide⟩).val :=
  dot_S8192x512_S512x256_S8192x256_1_0_0_1_n_n.rhsIdx_val_of_single rfl i q
theorem rhs_main_v155_1 (i : S8192x256.Idx) (q : dot_S8192x512_S512x256_S8192x256_1_0_0_1_n_n.contr.Idx) :
    (dot_S8192x512_S512x256_S8192x256_1_0_0_1_n_n.rhsIdx i q 1).val = (i 1).val := by
  unfold DotDims.rhsIdx
  rw [dif_neg (show ¬(1 : Fin S512x256.rank) ∈ dot_S8192x512_S512x256_S8192x256_1_0_0_1_n_n.rhsBatch by decide), dif_pos (show (1 : Fin S512x256.rank) ∈ dot_S8192x512_S512x256_S8192x256_1_0_0_1_n_n.rhsNonContracting by decide)]
  rfl
abbrev lidx_main_v155 (i : S8192x256.Idx) (k : Fin 512) : S8192x512.Idx := fun a => match a with
  | ⟨0, _⟩ => ⟨(i 0).val, (i 0).isLt⟩
  | ⟨1, _⟩ => ⟨k.val, k.isLt⟩
abbrev ridx_main_v155 (i : S8192x256.Idx) (k : Fin 512) : S512x256.Idx := fun a => match a with
  | ⟨0, _⟩ => ⟨k.val, k.isLt⟩
  | ⟨1, _⟩ => ⟨(i 1).val, (i 1).isLt⟩

theorem val_main_v155_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S8192x256.Idx) :
    val_main_v155 (F := Ideal) x0 x1 x2 x3 x4 x5 x6 x7 x8 x9 x10 x11 x12 x13 x14 x15 x16 x17 x18 x19 x20 x21 i = ∑ k : Fin 512, (val_main_v154 (F := Ideal) x0 x1 x2 x3 x4 x5 x6 x7 x8 x9 x10 x11 x12 x13 x14 x15 x16 x17 x18 x19 x20 x21) (lidx_main_v155 i k) * x18 (ridx_main_v155 i k) := by
  unfold val_main_v155
  generalize val_main_v154 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S8192x512_S512x256_S8192x256_1_0_0_1_n_n 512 rfl rfl).symm]
  refine Finset.sum_congr rfl fun k _ => ?_
  have hk := ValueIdx.contrEquiv1_symm_val dot_S8192x512_S512x256_S8192x256_1_0_0_1_n_n 512 rfl rfl k
  have el : dot_S8192x512_S512x256_S8192x256_1_0_0_1_n_n.lhsIdx i ((ValueIdx.contrEquiv1 dot_S8192x512_S512x256_S8192x256_1_0_0_1_n_n 512 rfl rfl).symm k) = lidx_main_v155 i k := funext fun a => Fin.ext (by
    match a with
    | ⟨0, _⟩ => exact lhs_main_v155_0 _ _
    | ⟨1, _⟩ => exact (lhs_main_v155_1 _ _).trans hk)
  have er : dot_S8192x512_S512x256_S8192x256_1_0_0_1_n_n.rhsIdx i ((ValueIdx.contrEquiv1 dot_S8192x512_S512x256_S8192x256_1_0_0_1_n_n 512 rfl rfl).symm k) = ridx_main_v155 i k := funext fun a => Fin.ext (by
    match a with
    | ⟨0, _⟩ => exact (rhs_main_v155_0 _ _).trans hk
    | ⟨1, _⟩ => exact rhs_main_v155_1 _ _)
  rw [el, er]

def val_main_v156 : (⟨S1x256, .f32⟩ : BufTy).Contents (Elt F) :=
  broadcastInDim S1x256 ![1] bcast_S256_S1x256_1 (x19)
abbrev idx_main_v156 (i : S1x256.Idx) : S256.Idx := fun a => match a with
  | ⟨0, _⟩ => ⟨(i 1).val, (i 1).isLt⟩
theorem val_main_v156_apply (i : S1x256.Idx) :
    val_main_v156 (F := F) x19 i = x19 (idx_main_v156 i) := by
  unfold val_main_v156
  exact broadcastInDim_apply _ bcast_S256_S1x256_1 x19 i (idx_main_v156 i) (fun a => match a with
    | ⟨0, _⟩ => by show (i 1).val = if (256 : Nat) = 1 then 0 else (i 1).val; rw [if_neg (by decide)])

def val_main_v157 : (⟨S8192x256, .f32⟩ : BufTy).Contents (Elt F) :=
  broadcastInDim S8192x256 ![0, 1] bcast_S1x256_S8192x256_0_1 (val_main_v156 (F := F) x19)
abbrev idx_main_v157 (i : S8192x256.Idx) : S1x256.Idx := fun a => match a with
  | ⟨0, _⟩ => ⟨0, Nat.one_pos⟩
  | ⟨1, _⟩ => ⟨(i 1).val, (i 1).isLt⟩
theorem val_main_v157_apply (i : S8192x256.Idx) :
    val_main_v157 (F := F) x19 i = val_main_v156 (F := F) x19 (idx_main_v157 i) := by
  unfold val_main_v157
  generalize val_main_v156 (F := F) x19 = y
  exact broadcastInDim_apply _ bcast_S1x256_S8192x256_0_1 y i (idx_main_v157 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v158 : (⟨S8192x256, .f32⟩ : BufTy).Contents (Elt F) :=
  addf (val_main_v155 (F := F) x0 x1 x2 x3 x4 x5 x6 x7 x8 x9 x10 x11 x12 x13 x14 x15 x16 x17 x18 x19 x20 x21) (val_main_v157 (F := F) x19)
theorem val_main_v158_apply (i : S8192x256.Idx) :
    val_main_v158 (F := F) x0 x1 x2 x3 x4 x5 x6 x7 x8 x9 x10 x11 x12 x13 x14 x15 x16 x17 x18 x19 x20 x21 i = FloatOps.addf (val_main_v155 (F := F) x0 x1 x2 x3 x4 x5 x6 x7 x8 x9 x10 x11 x12 x13 x14 x15 x16 x17 x18 x19 x20 x21 i) (val_main_v157 (F := F) x19 i) := rfl

def val_main_call7_cst : (⟨S_, .f32⟩ : BufTy).Contents (Elt F) :=
  constant S_ .f32 0x00000000#32
theorem val_main_call7_cst_apply (i : S_.Idx) :
    val_main_call7_cst (F := F) i = FloatOps.ofBits .f32 0x00000000#32 := rfl

def val_main_call7_v0 : (⟨S8192x256, .f32⟩ : BufTy).Contents (Elt F) :=
  broadcastInDim S8192x256 ![] bcast_S_S8192x256 (val_main_call7_cst (F := F))
abbrev idx_main_call7_v0 (i : S8192x256.Idx) : S_.Idx := fun a => a.elim0
theorem val_main_call7_v0_apply (i : S8192x256.Idx) :
    val_main_call7_v0 (F := F) i = val_main_call7_cst (F := F) (idx_main_call7_v0 i) := by
  unfold val_main_call7_v0
  generalize val_main_call7_cst (F := F) = y
  exact broadcastInDim_apply _ bcast_S_S8192x256 y i (idx_main_call7_v0 i) (fun a => a.elim0)

def val_main_v159 : (⟨S8192x256, .f32⟩ : BufTy).Contents (Elt F) :=
  maximumf (val_main_v158 (F := F) x0 x1 x2 x3 x4 x5 x6 x7 x8 x9 x10 x11 x12 x13 x14 x15 x16 x17 x18 x19 x20 x21) (val_main_call7_v0 (F := F))
theorem val_main_v159_apply (i : S8192x256.Idx) :
    val_main_v159 (F := F) x0 x1 x2 x3 x4 x5 x6 x7 x8 x9 x10 x11 x12 x13 x14 x15 x16 x17 x18 x19 x20 x21 i = FloatOps.maximumf (val_main_v158 (F := F) x0 x1 x2 x3 x4 x5 x6 x7 x8 x9 x10 x11 x12 x13 x14 x15 x16 x17 x18 x19 x20 x21 i) (val_main_call7_v0 (F := F) i) := rfl

def val_main_v160 : (⟨S8192x128, .f32⟩ : BufTy).Contents (Elt F) :=
  Host.dotGeneral dot_S8192x256_S256x128_S8192x128_1_0_0_1_n_n none (val_main_v159 (F := F) x0 x1 x2 x3 x4 x5 x6 x7 x8 x9 x10 x11 x12 x13 x14 x15 x16 x17 x18 x19 x20 x21) (x20)
theorem lhs_main_v160_0 (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
theorem lhs_main_v160_1 (i : S8192x128.Idx) (q : dot_S8192x256_S256x128_S8192x128_1_0_0_1_n_n.contr.Idx) :
    (dot_S8192x256_S256x128_S8192x128_1_0_0_1_n_n.lhsIdx i q 1).val = (q ⟨0, by decide⟩).val :=
  dot_S8192x256_S256x128_S8192x128_1_0_0_1_n_n.lhsIdx_val_of_single rfl i q
theorem rhs_main_v160_0 (i : S8192x128.Idx) (q : dot_S8192x256_S256x128_S8192x128_1_0_0_1_n_n.contr.Idx) :
    (dot_S8192x256_S256x128_S8192x128_1_0_0_1_n_n.rhsIdx i q 0).val = (q ⟨0, by decide⟩).val :=
  dot_S8192x256_S256x128_S8192x128_1_0_0_1_n_n.rhsIdx_val_of_single rfl i q
theorem rhs_main_v160_1 (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl
abbrev lidx_main_v160 (i : S8192x128.Idx) (k : Fin 256) : S8192x256.Idx := fun a => match a with
  | ⟨0, _⟩ => ⟨(i 0).val, (i 0).isLt⟩
  | ⟨1, _⟩ => ⟨k.val, k.isLt⟩
abbrev ridx_main_v160 (i : S8192x128.Idx) (k : Fin 256) : S256x128.Idx := fun a => match a with
  | ⟨0, _⟩ => ⟨k.val, k.isLt⟩
  | ⟨1, _⟩ => ⟨(i 1).val, (i 1).isLt⟩

theorem val_main_v160_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S8192x128.Idx) :
    val_main_v160 (F := Ideal) x0 x1 x2 x3 x4 x5 x6 x7 x8 x9 x10 x11 x12 x13 x14 x15 x16 x17 x18 x19 x20 x21 i = ∑ k : Fin 256, (val_main_v159 (F := Ideal) x0 x1 x2 x3 x4 x5 x6 x7 x8 x9 x10 x11 x12 x13 x14 x15 x16 x17 x18 x19 x20 x21) (lidx_main_v160 i k) * x20 (ridx_main_v160 i k) := by
  unfold val_main_v160
  generalize val_main_v159 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S8192x256_S256x128_S8192x128_1_0_0_1_n_n 256 rfl rfl).symm]
  refine Finset.sum_congr rfl fun k _ => ?_
  have hk := ValueIdx.contrEquiv1_symm_val dot_S8192x256_S256x128_S8192x128_1_0_0_1_n_n 256 rfl rfl k
  have el : dot_S8192x256_S256x128_S8192x128_1_0_0_1_n_n.lhsIdx i ((ValueIdx.contrEquiv1 dot_S8192x256_S256x128_S8192x128_1_0_0_1_n_n 256 rfl rfl).symm k) = lidx_main_v160 i k := funext fun a => Fin.ext (by
    match a with
    | ⟨0, _⟩ => exact lhs_main_v160_0 _ _
    | ⟨1, _⟩ => exact (lhs_main_v160_1 _ _).trans hk)
  have er : dot_S8192x256_S256x128_S8192x128_1_0_0_1_n_n.rhsIdx i ((ValueIdx.contrEquiv1 dot_S8192x256_S256x128_S8192x128_1_0_0_1_n_n 256 rfl rfl).symm k) = ridx_main_v160 i k := funext fun a => Fin.ext (by
    match a with
    | ⟨0, _⟩ => exact (rhs_main_v160_0 _ _).trans hk
    | ⟨1, _⟩ => exact rhs_main_v160_1 _ _)
  rw [el, er]

def val_main_v161 : (⟨S1x128, .f32⟩ : BufTy).Contents (Elt F) :=
  broadcastInDim S1x128 ![1] bcast_S128_S1x128_1 (x21)
abbrev idx_main_v161 (i : S1x128.Idx) : S128.Idx := fun a => match a with
  | ⟨0, _⟩ => ⟨(i 1).val, (i 1).isLt⟩
theorem val_main_v161_apply (i : S1x128.Idx) :
    val_main_v161 (F := F) x21 i = x21 (idx_main_v161 i) := by
  unfold val_main_v161
  exact broadcastInDim_apply _ bcast_S128_S1x128_1 x21 i (idx_main_v161 i) (fun a => match a with
    | ⟨0, _⟩ => by show (i 1).val = if (128 : Nat) = 1 then 0 else (i 1).val; rw [if_neg (by decide)])

def val_main_v162 : (⟨S8192x128, .f32⟩ : BufTy).Contents (Elt F) :=
  broadcastInDim S8192x128 ![0, 1] bcast_S1x128_S8192x128_0_1 (val_main_v161 (F := F) x21)
abbrev idx_main_v162 (i : S8192x128.Idx) : S1x128.Idx := fun a => match a with
  | ⟨0, _⟩ => ⟨0, Nat.one_pos⟩
  | ⟨1, _⟩ => ⟨(i 1).val, (i 1).isLt⟩
theorem val_main_v162_apply (i : S8192x128.Idx) :
    val_main_v162 (F := F) x21 i = val_main_v161 (F := F) x21 (idx_main_v162 i) := by
  unfold val_main_v162
  generalize val_main_v161 (F := F) x21 = y
  exact broadcastInDim_apply _ bcast_S1x128_S8192x128_0_1 y i (idx_main_v162 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v163 : (⟨S8192x128, .f32⟩ : BufTy).Contents (Elt F) :=
  addf (val_main_v160 (F := F) x0 x1 x2 x3 x4 x5 x6 x7 x8 x9 x10 x11 x12 x13 x14 x15 x16 x17 x18 x19 x20 x21) (val_main_v162 (F := F) x21)
theorem val_main_v163_apply (i : S8192x128.Idx) :
    val_main_v163 (F := F) x0 x1 x2 x3 x4 x5 x6 x7 x8 x9 x10 x11 x12 x13 x14 x15 x16 x17 x18 x19 x20 x21 i = FloatOps.addf (val_main_v160 (F := F) x0 x1 x2 x3 x4 x5 x6 x7 x8 x9 x10 x11 x12 x13 x14 x15 x16 x17 x18 x19 x20 x21 i) (val_main_v162 (F := F) x21 i) := rfl

def val_main_call8_cst : (⟨S_, .f32⟩ : BufTy).Contents (Elt F) :=
  constant S_ .f32 0x00000000#32
theorem val_main_call8_cst_apply (i : S_.Idx) :
    val_main_call8_cst (F := F) i = FloatOps.ofBits .f32 0x00000000#32 := rfl

def val_main_call8_v0 : (⟨S8192x128, .f32⟩ : BufTy).Contents (Elt F) :=
  broadcastInDim S8192x128 ![] bcast_S_S8192x128 (val_main_call8_cst (F := F))
abbrev idx_main_call8_v0 (i : S8192x128.Idx) : S_.Idx := fun a => a.elim0
theorem val_main_call8_v0_apply (i : S8192x128.Idx) :
    val_main_call8_v0 (F := F) i = val_main_call8_cst (F := F) (idx_main_call8_v0 i) := by
  unfold val_main_call8_v0
  generalize val_main_call8_cst (F := F) = y
  exact broadcastInDim_apply _ bcast_S_S8192x128 y i (idx_main_call8_v0 i) (fun a => a.elim0)

def val_main_v164 : (⟨S8192x128, .f32⟩ : BufTy).Contents (Elt F) :=
  maximumf (val_main_v163 (F := F) x0 x1 x2 x3 x4 x5 x6 x7 x8 x9 x10 x11 x12 x13 x14 x15 x16 x17 x18 x19 x20 x21) (val_main_call8_v0 (F := F))
theorem val_main_v164_apply (i : S8192x128.Idx) :
    val_main_v164 (F := F) x0 x1 x2 x3 x4 x5 x6 x7 x8 x9 x10 x11 x12 x13 x14 x15 x16 x17 x18 x19 x20 x21 i = FloatOps.maximumf (val_main_v163 (F := F) x0 x1 x2 x3 x4 x5 x6 x7 x8 x9 x10 x11 x12 x13 x14 x15 x16 x17 x18 x19 x20 x21 i) (val_main_call8_v0 (F := F) i) := rfl

def val_main_v165 : (⟨S1024x4x2x128, .f32⟩ : BufTy).Contents (Elt F) :=
  shapeCast _ (val_main_v164 (F := F) x0 x1 x2 x3 x4 x5 x6 x7 x8 x9 x10 x11 x12 x13 x14 x15 x16 x17 x18 x19 x20 x21) shapeCasts_S8192x128_S1024x4x2x128
abbrev idx_main_v165 (i : S1024x4x2x128.Idx) : S8192x128.Idx := fun a => match a with
  | ⟨0, _⟩ => ⟨((((i 0).val * 4 + (i 1).val) * 2 + (i 2).val) * 128 + (i 3).val) / 128, by have h0 : (i 0).val < 1024 := (i 0).isLt; have h1 : (i 1).val < 4 := (i 1).isLt; have h2 : (i 2).val < 2 := (i 2).isLt; have h3 : (i 3).val < 128 := (i 3).isLt; show ((((i 0).val * 4 + (i 1).val) * 2 + (i 2).val) * 128 + (i 3).val) / 128 < 8192; omega⟩
  | ⟨1, _⟩ => ⟨((((i 0).val * 4 + (i 1).val) * 2 + (i 2).val) * 128 + (i 3).val) % 128, by have h0 : (i 0).val < 1024 := (i 0).isLt; have h1 : (i 1).val < 4 := (i 1).isLt; have h2 : (i 2).val < 2 := (i 2).isLt; have h3 : (i 3).val < 128 := (i 3).isLt; show ((((i 0).val * 4 + (i 1).val) * 2 + (i 2).val) * 128 + (i 3).val) % 128 < 128; omega⟩
theorem val_main_v165_apply (i : S1024x4x2x128.Idx) :
    val_main_v165 (F := F) x0 x1 x2 x3 x4 x5 x6 x7 x8 x9 x10 x11 x12 x13 x14 x15 x16 x17 x18 x19 x20 x21 i = val_main_v164 (F := F) x0 x1 x2 x3 x4 x5 x6 x7 x8 x9 x10 x11 x12 x13 x14 x15 x16 x17 x18 x19 x20 x21 (idx_main_v165 i) := by
  unfold val_main_v165
  generalize val_main_v164 (F := F) x0 x1 x2 x3 x4 x5 x6 x7 x8 x9 x10 x11 x12 x13 x14 x15 x16 x17 x18 x19 x20 x21 = y
  exact shapeCast_apply y shapeCasts_S8192x128_S1024x4x2x128 i (idx_main_v165 i)
    (by rewrite [Shape.rowMajor_val_two, Shape.rowMajor_val_four]; have h0 : (i 0).val < 1024 := (i 0).isLt; have h1 : (i 1).val < 4 := (i 1).isLt; have h2 : (i 2).val < 2 := (i 2).isLt; have h3 : (i 3).val < 128 := (i 3).isLt; show ((((i 0).val * 4 + (i 1).val) * 2 + (i 2).val) * 128 + (i 3).val) / 128 * 128 + ((((i 0).val * 4 + (i 1).val) * 2 + (i 2).val) * 128 + (i 3).val) % 128 = (((i 0).val * 4 + (i 1).val) * 2 + (i 2).val) * 128 + (i 3).val; omega)

def val_main_v166 : (⟨S1024x4x2x128, .f32⟩ : BufTy).Contents (Elt F) :=
  shapeCast _ (val_main_v118 (F := F) x0 x1 x2 x3 x4 x5 x6 x7 x8 x9 x10 x11 x12 x13 x14 x15 x16 x17 x18 x19 x20 x21) shapeCasts_S8192x128_S1024x4x2x128
abbrev idx_main_v166 (i : S1024x4x2x128.Idx) : S8192x128.Idx := fun a => match a with
  | ⟨0, _⟩ => ⟨((((i 0).val * 4 + (i 1).val) * 2 + (i 2).val) * 128 + (i 3).val) / 128, by have h0 : (i 0).val < 1024 := (i 0).isLt; have h1 : (i 1).val < 4 := (i 1).isLt; have h2 : (i 2).val < 2 := (i 2).isLt; have h3 : (i 3).val < 128 := (i 3).isLt; show ((((i 0).val * 4 + (i 1).val) * 2 + (i 2).val) * 128 + (i 3).val) / 128 < 8192; omega⟩
  | ⟨1, _⟩ => ⟨((((i 0).val * 4 + (i 1).val) * 2 + (i 2).val) * 128 + (i 3).val) % 128, by have h0 : (i 0).val < 1024 := (i 0).isLt; have h1 : (i 1).val < 4 := (i 1).isLt; have h2 : (i 2).val < 2 := (i 2).isLt; have h3 : (i 3).val < 128 := (i 3).isLt; show ((((i 0).val * 4 + (i 1).val) * 2 + (i 2).val) * 128 + (i 3).val) % 128 < 128; omega⟩
theorem val_main_v166_apply (i : S1024x4x2x128.Idx) :
    val_main_v166 (F := F) x0 x1 x2 x3 x4 x5 x6 x7 x8 x9 x10 x11 x12 x13 x14 x15 x16 x17 x18 x19 x20 x21 i = val_main_v118 (F := F) x0 x1 x2 x3 x4 x5 x6 x7 x8 x9 x10 x11 x12 x13 x14 x15 x16 x17 x18 x19 x20 x21 (idx_main_v166 i) := by
  unfold val_main_v166
  generalize val_main_v118 (F := F) x0 x1 x2 x3 x4 x5 x6 x7 x8 x9 x10 x11 x12 x13 x14 x15 x16 x17 x18 x19 x20 x21 = y
  exact shapeCast_apply y shapeCasts_S8192x128_S1024x4x2x128 i (idx_main_v166 i)
    (by rewrite [Shape.rowMajor_val_two, Shape.rowMajor_val_four]; have h0 : (i 0).val < 1024 := (i 0).isLt; have h1 : (i 1).val < 4 := (i 1).isLt; have h2 : (i 2).val < 2 := (i 2).isLt; have h3 : (i 3).val < 128 := (i 3).isLt; show ((((i 0).val * 4 + (i 1).val) * 2 + (i 2).val) * 128 + (i 3).val) / 128 * 128 + ((((i 0).val * 4 + (i 1).val) * 2 + (i 2).val) * 128 + (i 3).val) % 128 = (((i 0).val * 4 + (i 1).val) * 2 + (i 2).val) * 128 + (i 3).val; omega)

def val_main_v167 : (⟨S1024x4x2x128, .f32⟩ : BufTy).Contents (Elt F) :=
  shapeCast _ (val_main_v133 (F := F) x0 x1 x2 x3 x4 x5 x6 x7 x8 x9 x10 x11 x12 x13 x14 x15 x16 x17 x18 x19 x20 x21) shapeCasts_S8192x128_S1024x4x2x128
abbrev idx_main_v167 (i : S1024x4x2x128.Idx) : S8192x128.Idx := fun a => match a with
  | ⟨0, _⟩ => ⟨((((i 0).val * 4 + (i 1).val) * 2 + (i 2).val) * 128 + (i 3).val) / 128, by have h0 : (i 0).val < 1024 := (i 0).isLt; have h1 : (i 1).val < 4 := (i 1).isLt; have h2 : (i 2).val < 2 := (i 2).isLt; have h3 : (i 3).val < 128 := (i 3).isLt; show ((((i 0).val * 4 + (i 1).val) * 2 + (i 2).val) * 128 + (i 3).val) / 128 < 8192; omega⟩
  | ⟨1, _⟩ => ⟨((((i 0).val * 4 + (i 1).val) * 2 + (i 2).val) * 128 + (i 3).val) % 128, by have h0 : (i 0).val < 1024 := (i 0).isLt; have h1 : (i 1).val < 4 := (i 1).isLt; have h2 : (i 2).val < 2 := (i 2).isLt; have h3 : (i 3).val < 128 := (i 3).isLt; show ((((i 0).val * 4 + (i 1).val) * 2 + (i 2).val) * 128 + (i 3).val) % 128 < 128; omega⟩
theorem val_main_v167_apply (i : S1024x4x2x128.Idx) :
    val_main_v167 (F := F) x0 x1 x2 x3 x4 x5 x6 x7 x8 x9 x10 x11 x12 x13 x14 x15 x16 x17 x18 x19 x20 x21 i = val_main_v133 (F := F) x0 x1 x2 x3 x4 x5 x6 x7 x8 x9 x10 x11 x12 x13 x14 x15 x16 x17 x18 x19 x20 x21 (idx_main_v167 i) := by
  unfold val_main_v167
  generalize val_main_v133 (F := F) x0 x1 x2 x3 x4 x5 x6 x7 x8 x9 x10 x11 x12 x13 x14 x15 x16 x17 x18 x19 x20 x21 = y
  exact shapeCast_apply y shapeCasts_S8192x128_S1024x4x2x128 i (idx_main_v167 i)
    (by rewrite [Shape.rowMajor_val_two, Shape.rowMajor_val_four]; have h0 : (i 0).val < 1024 := (i 0).isLt; have h1 : (i 1).val < 4 := (i 1).isLt; have h2 : (i 2).val < 2 := (i 2).isLt; have h3 : (i 3).val < 128 := (i 3).isLt; show ((((i 0).val * 4 + (i 1).val) * 2 + (i 2).val) * 128 + (i 3).val) / 128 * 128 + ((((i 0).val * 4 + (i 1).val) * 2 + (i 2).val) * 128 + (i 3).val) % 128 = (((i 0).val * 4 + (i 1).val) * 2 + (i 2).val) * 128 + (i 3).val; omega)

def val_main_v168 : (⟨S4096, .f32⟩ : BufTy).Contents (Elt F) :=
  extractStridedSlice S4096 ![3072] (val_main_v25 (F := F) x6) slices_S64512_S4096_3072
abbrev idx_main_v168 (i : S4096.Idx) : S64512.Idx := fun a => match a with
  | ⟨0, _⟩ => ⟨3072 + (i 0).val, by have h0 : (i 0).val < 4096 := (i 0).isLt; show 3072 + (i 0).val < 64512; omega⟩
theorem val_main_v168_apply (i : S4096.Idx) :
    val_main_v168 (F := F) x6 i = val_main_v25 (F := F) x6 (idx_main_v168 i) := by
  unfold val_main_v168
  generalize val_main_v25 (F := F) x6 = y
  exact extractStridedSlice_apply ![3072] y slices_S64512_S4096_3072 i (idx_main_v168 i) (fun a => match a with
    | ⟨0, _⟩ => by show 3072 + (i 0).val = 3072 + (i 0).val; omega)

def val_main_v169 : (⟨S1024x4x1, .f32⟩ : BufTy).Contents (Elt F) :=
  shapeCast _ (val_main_v168 (F := F) x6) shapeCasts_S4096_S1024x4x1
abbrev idx_main_v169 (i : S1024x4x1.Idx) : S4096.Idx := fun a => match a with
  | ⟨0, _⟩ => ⟨((i 0).val * 4 + (i 1).val) * 1 + (i 2).val, by have h0 : (i 0).val < 1024 := (i 0).isLt; have h1 : (i 1).val < 4 := (i 1).isLt; have h2 : (i 2).val < 1 := (i 2).isLt; show ((i 0).val * 4 + (i 1).val) * 1 + (i 2).val < 4096; omega⟩
theorem val_main_v169_apply (i : S1024x4x1.Idx) :
    val_main_v169 (F := F) x6 i = val_main_v168 (F := F) x6 (idx_main_v169 i) := by
  unfold val_main_v169
  generalize val_main_v168 (F := F) x6 = y
  exact shapeCast_apply y shapeCasts_S4096_S1024x4x1 i (idx_main_v169 i)
    (by rewrite [Shape.rowMajor_val_one, Shape.rowMajor_val_three]; have h0 : (i 0).val < 1024 := (i 0).isLt; have h1 : (i 1).val < 4 := (i 1).isLt; have h2 : (i 2).val < 1 := (i 2).isLt; show ((i 0).val * 4 + (i 1).val) * 1 + (i 2).val = ((i 0).val * 4 + (i 1).val) * 1 + (i 2).val; omega)

def val_main_v170 : (⟨S4096, .f32⟩ : BufTy).Contents (Elt F) :=
  extractStridedSlice S4096 ![3072] (val_main_v26 (F := F) x7) slices_S64512_S4096_3072
abbrev idx_main_v170 (i : S4096.Idx) : S64512.Idx := fun a => match a with
  | ⟨0, _⟩ => ⟨3072 + (i 0).val, by have h0 : (i 0).val < 4096 := (i 0).isLt; show 3072 + (i 0).val < 64512; omega⟩
theorem val_main_v170_apply (i : S4096.Idx) :
    val_main_v170 (F := F) x7 i = val_main_v26 (F := F) x7 (idx_main_v170 i) := by
  unfold val_main_v170
  generalize val_main_v26 (F := F) x7 = y
  exact extractStridedSlice_apply ![3072] y slices_S64512_S4096_3072 i (idx_main_v170 i) (fun a => match a with
    | ⟨0, _⟩ => by show 3072 + (i 0).val = 3072 + (i 0).val; omega)

def val_main_v171 : (⟨S1024x4x1, .f32⟩ : BufTy).Contents (Elt F) :=
  shapeCast _ (val_main_v170 (F := F) x7) shapeCasts_S4096_S1024x4x1
abbrev idx_main_v171 (i : S1024x4x1.Idx) : S4096.Idx := fun a => match a with
  | ⟨0, _⟩ => ⟨((i 0).val * 4 + (i 1).val) * 1 + (i 2).val, by have h0 : (i 0).val < 1024 := (i 0).isLt; have h1 : (i 1).val < 4 := (i 1).isLt; have h2 : (i 2).val < 1 := (i 2).isLt; show ((i 0).val * 4 + (i 1).val) * 1 + (i 2).val < 4096; omega⟩
theorem val_main_v171_apply (i : S1024x4x1.Idx) :
    val_main_v171 (F := F) x7 i = val_main_v170 (F := F) x7 (idx_main_v171 i) := by
  unfold val_main_v171
  generalize val_main_v170 (F := F) x7 = y
  exact shapeCast_apply y shapeCasts_S4096_S1024x4x1 i (idx_main_v171 i)
    (by rewrite [Shape.rowMajor_val_one, Shape.rowMajor_val_three]; have h0 : (i 0).val < 1024 := (i 0).isLt; have h1 : (i 1).val < 4 := (i 1).isLt; have h2 : (i 2).val < 1 := (i 2).isLt; show ((i 0).val * 4 + (i 1).val) * 1 + (i 2).val = ((i 0).val * 4 + (i 1).val) * 1 + (i 2).val; omega)

def val_main_v172 : (⟨S1024x4x1x128, .f32⟩ : BufTy).Contents (Elt F) :=
  extractStridedSlice S1024x4x1x128 ![0, 0, 0, 0] (val_main_v165 (F := F) x0 x1 x2 x3 x4 x5 x6 x7 x8 x9 x10 x11 x12 x13 x14 x15 x16 x17 x18 x19 x20 x21) slices_S1024x4x2x128_S1024x4x1x128_0_0_0_0
abbrev idx_main_v172 (i : S1024x4x1x128.Idx) : S1024x4x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v172_apply (i : S1024x4x1x128.Idx) :
    val_main_v172 (F := F) x0 x1 x2 x3 x4 x5 x6 x7 x8 x9 x10 x11 x12 x13 x14 x15 x16 x17 x18 x19 x20 x21 i = val_main_v165 (F := F) x0 x1 x2 x3 x4 x5 x6 x7 x8 x9 x10 x11 x12 x13 x14 x15 x16 x17 x18 x19 x20 x21 (idx_main_v172 i) := by
  unfold val_main_v172
  generalize val_main_v165 (F := F) x0 x1 x2 x3 x4 x5 x6 x7 x8 x9 x10 x11 x12 x13 x14 x15 x16 x17 x18 x19 x20 x21 = y
  exact extractStridedSlice_apply ![0, 0, 0, 0] y slices_S1024x4x2x128_S1024x4x1x128_0_0_0_0 i (idx_main_v172 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v173 : (⟨S1024x4x128, .f32⟩ : BufTy).Contents (Elt F) :=
  shapeCast _ (val_main_v172 (F := F) x0 x1 x2 x3 x4 x5 x6 x7 x8 x9 x10 x11 x12 x13 x14 x15 x16 x17 x18 x19 x20 x21) shapeCasts_S1024x4x1x128_S1024x4x128
abbrev idx_main_v173 (i : S1024x4x128.Idx) : S1024x4x1x128.Idx := fun a => match a with
  | ⟨0, _⟩ => ⟨(((i 0).val * 4 + (i 1).val) * 128 + (i 2).val) / 512, by have h0 : (i 0).val < 1024 := (i 0).isLt; have h1 : (i 1).val < 4 := (i 1).isLt; have h2 : (i 2).val < 128 := (i 2).isLt; show (((i 0).val * 4 + (i 1).val) * 128 + (i 2).val) / 512 < 1024; omega⟩
  | ⟨1, _⟩ => ⟨(((i 0).val * 4 + (i 1).val) * 128 + (i 2).val) / 128 % 4, by have h0 : (i 0).val < 1024 := (i 0).isLt; have h1 : (i 1).val < 4 := (i 1).isLt; have h2 : (i 2).val < 128 := (i 2).isLt; show (((i 0).val * 4 + (i 1).val) * 128 + (i 2).val) / 128 % 4 < 4; omega⟩
  | ⟨2, _⟩ => ⟨0, Nat.one_pos⟩
  | ⟨3, _⟩ => ⟨(((i 0).val * 4 + (i 1).val) * 128 + (i 2).val) % 128, by have h0 : (i 0).val < 1024 := (i 0).isLt; have h1 : (i 1).val < 4 := (i 1).isLt; have h2 : (i 2).val < 128 := (i 2).isLt; show (((i 0).val * 4 + (i 1).val) * 128 + (i 2).val) % 128 < 128; omega⟩
theorem val_main_v173_apply (i : S1024x4x128.Idx) :
    val_main_v173 (F := F) x0 x1 x2 x3 x4 x5 x6 x7 x8 x9 x10 x11 x12 x13 x14 x15 x16 x17 x18 x19 x20 x21 i = val_main_v172 (F := F) x0 x1 x2 x3 x4 x5 x6 x7 x8 x9 x10 x11 x12 x13 x14 x15 x16 x17 x18 x19 x20 x21 (idx_main_v173 i) := by
  unfold val_main_v173
  generalize val_main_v172 (F := F) x0 x1 x2 x3 x4 x5 x6 x7 x8 x9 x10 x11 x12 x13 x14 x15 x16 x17 x18 x19 x20 x21 = y
  exact shapeCast_apply y shapeCasts_S1024x4x1x128_S1024x4x128 i (idx_main_v173 i)
    (by rewrite [Shape.rowMajor_val_four, Shape.rowMajor_val_three]; have h0 : (i 0).val < 1024 := (i 0).isLt; have h1 : (i 1).val < 4 := (i 1).isLt; have h2 : (i 2).val < 128 := (i 2).isLt; show (((((i 0).val * 4 + (i 1).val) * 128 + (i 2).val) / 512 * 4 + (((i 0).val * 4 + (i 1).val) * 128 + (i 2).val) / 128 % 4) * 1 + 0) * 128 + (((i 0).val * 4 + (i 1).val) * 128 + (i 2).val) % 128 = ((i 0).val * 4 + (i 1).val) * 128 + (i 2).val; omega)

def val_main_v174 : (⟨S1024x4x128, .f32⟩ : BufTy).Contents (Elt F) :=
  broadcastInDim S1024x4x128 ![0, 1, 2] bcast_S1024x4x1_S1024x4x128_0_1_2 (val_main_v169 (F := F) x6)
abbrev idx_main_v174 (i : S1024x4x128.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v174_apply (i : S1024x4x128.Idx) :
    val_main_v174 (F := F) x6 i = val_main_v169 (F := F) x6 (idx_main_v174 i) := by
  unfold val_main_v174
  generalize val_main_v169 (F := F) x6 = y
  exact broadcastInDim_apply _ bcast_S1024x4x1_S1024x4x128_0_1_2 y i (idx_main_v174 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v175 : (⟨S1024x4x128, .f32⟩ : BufTy).Contents (Elt F) :=
  mulf (val_main_v173 (F := F) x0 x1 x2 x3 x4 x5 x6 x7 x8 x9 x10 x11 x12 x13 x14 x15 x16 x17 x18 x19 x20 x21) (val_main_v174 (F := F) x6)
theorem val_main_v175_apply (i : S1024x4x128.Idx) :
    val_main_v175 (F := F) x0 x1 x2 x3 x4 x5 x6 x7 x8 x9 x10 x11 x12 x13 x14 x15 x16 x17 x18 x19 x20 x21 i = FloatOps.mulf (val_main_v173 (F := F) x0 x1 x2 x3 x4 x5 x6 x7 x8 x9 x10 x11 x12 x13 x14 x15 x16 x17 x18 x19 x20 x21 i) (val_main_v174 (F := F) x6 i) := rfl

def val_main_v176 : (⟨S4096x128, .f32⟩ : BufTy).Contents (Elt F) :=
  shapeCast _ (val_main_v175 (F := F) x0 x1 x2 x3 x4 x5 x6 x7 x8 x9 x10 x11 x12 x13 x14 x15 x16 x17 x18 x19 x20 x21) shapeCasts_S1024x4x128_S4096x128
abbrev idx_main_v176 (i : S4096x128.Idx) : S1024x4x128.Idx := fun a => match a with
  | ⟨0, _⟩ => ⟨((i 0).val * 128 + (i 1).val) / 512, by have h0 : (i 0).val < 4096 := (i 0).isLt; have h1 : (i 1).val < 128 := (i 1).isLt; show ((i 0).val * 128 + (i 1).val) / 512 < 1024; omega⟩
  | ⟨1, _⟩ => ⟨((i 0).val * 128 + (i 1).val) / 128 % 4, by have h0 : (i 0).val < 4096 := (i 0).isLt; have h1 : (i 1).val < 128 := (i 1).isLt; show ((i 0).val * 128 + (i 1).val) / 128 % 4 < 4; omega⟩
  | ⟨2, _⟩ => ⟨((i 0).val * 128 + (i 1).val) % 128, by have h0 : (i 0).val < 4096 := (i 0).isLt; have h1 : (i 1).val < 128 := (i 1).isLt; show ((i 0).val * 128 + (i 1).val) % 128 < 128; omega⟩
theorem val_main_v176_apply (i : S4096x128.Idx) :
    val_main_v176 (F := F) x0 x1 x2 x3 x4 x5 x6 x7 x8 x9 x10 x11 x12 x13 x14 x15 x16 x17 x18 x19 x20 x21 i = val_main_v175 (F := F) x0 x1 x2 x3 x4 x5 x6 x7 x8 x9 x10 x11 x12 x13 x14 x15 x16 x17 x18 x19 x20 x21 (idx_main_v176 i) := by
  unfold val_main_v176
  generalize val_main_v175 (F := F) x0 x1 x2 x3 x4 x5 x6 x7 x8 x9 x10 x11 x12 x13 x14 x15 x16 x17 x18 x19 x20 x21 = y
  exact shapeCast_apply y shapeCasts_S1024x4x128_S4096x128 i (idx_main_v176 i)
    (by rewrite [Shape.rowMajor_val_three, Shape.rowMajor_val_two]; have h0 : (i 0).val < 4096 := (i 0).isLt; have h1 : (i 1).val < 128 := (i 1).isLt; show (((i 0).val * 128 + (i 1).val) / 512 * 4 + ((i 0).val * 128 + (i 1).val) / 128 % 4) * 128 + ((i 0).val * 128 + (i 1).val) % 128 = (i 0).val * 128 + (i 1).val; omega)

def val_main_v177 : (⟨S1024x4x1x128, .f32⟩ : BufTy).Contents (Elt F) :=
  extractStridedSlice S1024x4x1x128 ![0, 0, 0, 0] (val_main_v166 (F := F) x0 x1 x2 x3 x4 x5 x6 x7 x8 x9 x10 x11 x12 x13 x14 x15 x16 x17 x18 x19 x20 x21) slices_S1024x4x2x128_S1024x4x1x128_0_0_0_0
abbrev idx_main_v177 (i : S1024x4x1x128.Idx) : S1024x4x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v177_apply (i : S1024x4x1x128.Idx) :
    val_main_v177 (F := F) x0 x1 x2 x3 x4 x5 x6 x7 x8 x9 x10 x11 x12 x13 x14 x15 x16 x17 x18 x19 x20 x21 i = val_main_v166 (F := F) x0 x1 x2 x3 x4 x5 x6 x7 x8 x9 x10 x11 x12 x13 x14 x15 x16 x17 x18 x19 x20 x21 (idx_main_v177 i) := by
  unfold val_main_v177
  generalize val_main_v166 (F := F) x0 x1 x2 x3 x4 x5 x6 x7 x8 x9 x10 x11 x12 x13 x14 x15 x16 x17 x18 x19 x20 x21 = y
  exact extractStridedSlice_apply ![0, 0, 0, 0] y slices_S1024x4x2x128_S1024x4x1x128_0_0_0_0 i (idx_main_v177 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v178 : (⟨S1024x4x128, .f32⟩ : BufTy).Contents (Elt F) :=
  shapeCast _ (val_main_v177 (F := F) x0 x1 x2 x3 x4 x5 x6 x7 x8 x9 x10 x11 x12 x13 x14 x15 x16 x17 x18 x19 x20 x21) shapeCasts_S1024x4x1x128_S1024x4x128
abbrev idx_main_v178 (i : S1024x4x128.Idx) : S1024x4x1x128.Idx := fun a => match a with
  | ⟨0, _⟩ => ⟨(((i 0).val * 4 + (i 1).val) * 128 + (i 2).val) / 512, by have h0 : (i 0).val < 1024 := (i 0).isLt; have h1 : (i 1).val < 4 := (i 1).isLt; have h2 : (i 2).val < 128 := (i 2).isLt; show (((i 0).val * 4 + (i 1).val) * 128 + (i 2).val) / 512 < 1024; omega⟩
  | ⟨1, _⟩ => ⟨(((i 0).val * 4 + (i 1).val) * 128 + (i 2).val) / 128 % 4, by have h0 : (i 0).val < 1024 := (i 0).isLt; have h1 : (i 1).val < 4 := (i 1).isLt; have h2 : (i 2).val < 128 := (i 2).isLt; show (((i 0).val * 4 + (i 1).val) * 128 + (i 2).val) / 128 % 4 < 4; omega⟩
  | ⟨2, _⟩ => ⟨0, Nat.one_pos⟩
  | ⟨3, _⟩ => ⟨(((i 0).val * 4 + (i 1).val) * 128 + (i 2).val) % 128, by have h0 : (i 0).val < 1024 := (i 0).isLt; have h1 : (i 1).val < 4 := (i 1).isLt; have h2 : (i 2).val < 128 := (i 2).isLt; show (((i 0).val * 4 + (i 1).val) * 128 + (i 2).val) % 128 < 128; omega⟩
theorem val_main_v178_apply (i : S1024x4x128.Idx) :
    val_main_v178 (F := F) x0 x1 x2 x3 x4 x5 x6 x7 x8 x9 x10 x11 x12 x13 x14 x15 x16 x17 x18 x19 x20 x21 i = val_main_v177 (F := F) x0 x1 x2 x3 x4 x5 x6 x7 x8 x9 x10 x11 x12 x13 x14 x15 x16 x17 x18 x19 x20 x21 (idx_main_v178 i) := by
  unfold val_main_v178
  generalize val_main_v177 (F := F) x0 x1 x2 x3 x4 x5 x6 x7 x8 x9 x10 x11 x12 x13 x14 x15 x16 x17 x18 x19 x20 x21 = y
  exact shapeCast_apply y shapeCasts_S1024x4x1x128_S1024x4x128 i (idx_main_v178 i)
    (by rewrite [Shape.rowMajor_val_four, Shape.rowMajor_val_three]; have h0 : (i 0).val < 1024 := (i 0).isLt; have h1 : (i 1).val < 4 := (i 1).isLt; have h2 : (i 2).val < 128 := (i 2).isLt; show (((((i 0).val * 4 + (i 1).val) * 128 + (i 2).val) / 512 * 4 + (((i 0).val * 4 + (i 1).val) * 128 + (i 2).val) / 128 % 4) * 1 + 0) * 128 + (((i 0).val * 4 + (i 1).val) * 128 + (i 2).val) % 128 = ((i 0).val * 4 + (i 1).val) * 128 + (i 2).val; omega)

def val_main_v179 : (⟨S1024x4x128, .f32⟩ : BufTy).Contents (Elt F) :=
  broadcastInDim S1024x4x128 ![0, 1, 2] bcast_S1024x4x1_S1024x4x128_0_1_2 (val_main_v169 (F := F) x6)
abbrev idx_main_v179 (i : S1024x4x128.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v179_apply (i : S1024x4x128.Idx) :
    val_main_v179 (F := F) x6 i = val_main_v169 (F := F) x6 (idx_main_v179 i) := by
  unfold val_main_v179
  generalize val_main_v169 (F := F) x6 = y
  exact broadcastInDim_apply _ bcast_S1024x4x1_S1024x4x128_0_1_2 y i (idx_main_v179 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v180 : (⟨S1024x4x128, .f32⟩ : BufTy).Contents (Elt F) :=
  mulf (val_main_v178 (F := F) x0 x1 x2 x3 x4 x5 x6 x7 x8 x9 x10 x11 x12 x13 x14 x15 x16 x17 x18 x19 x20 x21) (val_main_v179 (F := F) x6)
theorem val_main_v180_apply (i : S1024x4x128.Idx) :
    val_main_v180 (F := F) x0 x1 x2 x3 x4 x5 x6 x7 x8 x9 x10 x11 x12 x13 x14 x15 x16 x17 x18 x19 x20 x21 i = FloatOps.mulf (val_main_v178 (F := F) x0 x1 x2 x3 x4 x5 x6 x7 x8 x9 x10 x11 x12 x13 x14 x15 x16 x17 x18 x19 x20 x21 i) (val_main_v179 (F := F) x6 i) := rfl

def val_main_v181 : (⟨S4096x128, .f32⟩ : BufTy).Contents (Elt F) :=
  shapeCast _ (val_main_v180 (F := F) x0 x1 x2 x3 x4 x5 x6 x7 x8 x9 x10 x11 x12 x13 x14 x15 x16 x17 x18 x19 x20 x21) shapeCasts_S1024x4x128_S4096x128
abbrev idx_main_v181 (i : S4096x128.Idx) : S1024x4x128.Idx := fun a => match a with
  | ⟨0, _⟩ => ⟨((i 0).val * 128 + (i 1).val) / 512, by have h0 : (i 0).val < 4096 := (i 0).isLt; have h1 : (i 1).val < 128 := (i 1).isLt; show ((i 0).val * 128 + (i 1).val) / 512 < 1024; omega⟩
  | ⟨1, _⟩ => ⟨((i 0).val * 128 + (i 1).val) / 128 % 4, by have h0 : (i 0).val < 4096 := (i 0).isLt; have h1 : (i 1).val < 128 := (i 1).isLt; show ((i 0).val * 128 + (i 1).val) / 128 % 4 < 4; omega⟩
  | ⟨2, _⟩ => ⟨((i 0).val * 128 + (i 1).val) % 128, by have h0 : (i 0).val < 4096 := (i 0).isLt; have h1 : (i 1).val < 128 := (i 1).isLt; show ((i 0).val * 128 + (i 1).val) % 128 < 128; omega⟩
theorem val_main_v181_apply (i : S4096x128.Idx) :
    val_main_v181 (F := F) x0 x1 x2 x3 x4 x5 x6 x7 x8 x9 x10 x11 x12 x13 x14 x15 x16 x17 x18 x19 x20 x21 i = val_main_v180 (F := F) x0 x1 x2 x3 x4 x5 x6 x7 x8 x9 x10 x11 x12 x13 x14 x15 x16 x17 x18 x19 x20 x21 (idx_main_v181 i) := by
  unfold val_main_v181
  generalize val_main_v180 (F := F) x0 x1 x2 x3 x4 x5 x6 x7 x8 x9 x10 x11 x12 x13 x14 x15 x16 x17 x18 x19 x20 x21 = y
  exact shapeCast_apply y shapeCasts_S1024x4x128_S4096x128 i (idx_main_v181 i)
    (by rewrite [Shape.rowMajor_val_three, Shape.rowMajor_val_two]; have h0 : (i 0).val < 4096 := (i 0).isLt; have h1 : (i 1).val < 128 := (i 1).isLt; show (((i 0).val * 128 + (i 1).val) / 512 * 4 + ((i 0).val * 128 + (i 1).val) / 128 % 4) * 128 + ((i 0).val * 128 + (i 1).val) % 128 = (i 0).val * 128 + (i 1).val; omega)

def val_main_v182 : (⟨S1024x4x1x128, .f32⟩ : BufTy).Contents (Elt F) :=
  extractStridedSlice S1024x4x1x128 ![0, 0, 0, 0] (val_main_v167 (F := F) x0 x1 x2 x3 x4 x5 x6 x7 x8 x9 x10 x11 x12 x13 x14 x15 x16 x17 x18 x19 x20 x21) slices_S1024x4x2x128_S1024x4x1x128_0_0_0_0
abbrev idx_main_v182 (i : S1024x4x1x128.Idx) : S1024x4x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v182_apply (i : S1024x4x1x128.Idx) :
    val_main_v182 (F := F) x0 x1 x2 x3 x4 x5 x6 x7 x8 x9 x10 x11 x12 x13 x14 x15 x16 x17 x18 x19 x20 x21 i = val_main_v167 (F := F) x0 x1 x2 x3 x4 x5 x6 x7 x8 x9 x10 x11 x12 x13 x14 x15 x16 x17 x18 x19 x20 x21 (idx_main_v182 i) := by
  unfold val_main_v182
  generalize val_main_v167 (F := F) x0 x1 x2 x3 x4 x5 x6 x7 x8 x9 x10 x11 x12 x13 x14 x15 x16 x17 x18 x19 x20 x21 = y
  exact extractStridedSlice_apply ![0, 0, 0, 0] y slices_S1024x4x2x128_S1024x4x1x128_0_0_0_0 i (idx_main_v182 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v183 : (⟨S1024x4x128, .f32⟩ : BufTy).Contents (Elt F) :=
  shapeCast _ (val_main_v182 (F := F) x0 x1 x2 x3 x4 x5 x6 x7 x8 x9 x10 x11 x12 x13 x14 x15 x16 x17 x18 x19 x20 x21) shapeCasts_S1024x4x1x128_S1024x4x128
abbrev idx_main_v183 (i : S1024x4x128.Idx) : S1024x4x1x128.Idx := fun a => match a with
  | ⟨0, _⟩ => ⟨(((i 0).val * 4 + (i 1).val) * 128 + (i 2).val) / 512, by have h0 : (i 0).val < 1024 := (i 0).isLt; have h1 : (i 1).val < 4 := (i 1).isLt; have h2 : (i 2).val < 128 := (i 2).isLt; show (((i 0).val * 4 + (i 1).val) * 128 + (i 2).val) / 512 < 1024; omega⟩
  | ⟨1, _⟩ => ⟨(((i 0).val * 4 + (i 1).val) * 128 + (i 2).val) / 128 % 4, by have h0 : (i 0).val < 1024 := (i 0).isLt; have h1 : (i 1).val < 4 := (i 1).isLt; have h2 : (i 2).val < 128 := (i 2).isLt; show (((i 0).val * 4 + (i 1).val) * 128 + (i 2).val) / 128 % 4 < 4; omega⟩
  | ⟨2, _⟩ => ⟨0, Nat.one_pos⟩
  | ⟨3, _⟩ => ⟨(((i 0).val * 4 + (i 1).val) * 128 + (i 2).val) % 128, by have h0 : (i 0).val < 1024 := (i 0).isLt; have h1 : (i 1).val < 4 := (i 1).isLt; have h2 : (i 2).val < 128 := (i 2).isLt; show (((i 0).val * 4 + (i 1).val) * 128 + (i 2).val) % 128 < 128; omega⟩
theorem val_main_v183_apply (i : S1024x4x128.Idx) :
    val_main_v183 (F := F) x0 x1 x2 x3 x4 x5 x6 x7 x8 x9 x10 x11 x12 x13 x14 x15 x16 x17 x18 x19 x20 x21 i = val_main_v182 (F := F) x0 x1 x2 x3 x4 x5 x6 x7 x8 x9 x10 x11 x12 x13 x14 x15 x16 x17 x18 x19 x20 x21 (idx_main_v183 i) := by
  unfold val_main_v183
  generalize val_main_v182 (F := F) x0 x1 x2 x3 x4 x5 x6 x7 x8 x9 x10 x11 x12 x13 x14 x15 x16 x17 x18 x19 x20 x21 = y
  exact shapeCast_apply y shapeCasts_S1024x4x1x128_S1024x4x128 i (idx_main_v183 i)
    (by rewrite [Shape.rowMajor_val_four, Shape.rowMajor_val_three]; have h0 : (i 0).val < 1024 := (i 0).isLt; have h1 : (i 1).val < 4 := (i 1).isLt; have h2 : (i 2).val < 128 := (i 2).isLt; show (((((i 0).val * 4 + (i 1).val) * 128 + (i 2).val) / 512 * 4 + (((i 0).val * 4 + (i 1).val) * 128 + (i 2).val) / 128 % 4) * 1 + 0) * 128 + (((i 0).val * 4 + (i 1).val) * 128 + (i 2).val) % 128 = ((i 0).val * 4 + (i 1).val) * 128 + (i 2).val; omega)

def val_main_v184 : (⟨S1024x4x128, .f32⟩ : BufTy).Contents (Elt F) :=
  broadcastInDim S1024x4x128 ![0, 1, 2] bcast_S1024x4x1_S1024x4x128_0_1_2 (val_main_v169 (F := F) x6)
abbrev idx_main_v184 (i : S1024x4x128.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v184_apply (i : S1024x4x128.Idx) :
    val_main_v184 (F := F) x6 i = val_main_v169 (F := F) x6 (idx_main_v184 i) := by
  unfold val_main_v184
  generalize val_main_v169 (F := F) x6 = y
  exact broadcastInDim_apply _ bcast_S1024x4x1_S1024x4x128_0_1_2 y i (idx_main_v184 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v185 : (⟨S1024x4x128, .f32⟩ : BufTy).Contents (Elt F) :=
  mulf (val_main_v183 (F := F) x0 x1 x2 x3 x4 x5 x6 x7 x8 x9 x10 x11 x12 x13 x14 x15 x16 x17 x18 x19 x20 x21) (val_main_v184 (F := F) x6)
theorem val_main_v185_apply (i : S1024x4x128.Idx) :
    val_main_v185 (F := F) x0 x1 x2 x3 x4 x5 x6 x7 x8 x9 x10 x11 x12 x13 x14 x15 x16 x17 x18 x19 x20 x21 i = FloatOps.mulf (val_main_v183 (F := F) x0 x1 x2 x3 x4 x5 x6 x7 x8 x9 x10 x11 x12 x13 x14 x15 x16 x17 x18 x19 x20 x21 i) (val_main_v184 (F := F) x6 i) := rfl

def val_main_v186 : (⟨S4096x128, .f32⟩ : BufTy).Contents (Elt F) :=
  shapeCast _ (val_main_v185 (F := F) x0 x1 x2 x3 x4 x5 x6 x7 x8 x9 x10 x11 x12 x13 x14 x15 x16 x17 x18 x19 x20 x21) shapeCasts_S1024x4x128_S4096x128
abbrev idx_main_v186 (i : S4096x128.Idx) : S1024x4x128.Idx := fun a => match a with
  | ⟨0, _⟩ => ⟨((i 0).val * 128 + (i 1).val) / 512, by have h0 : (i 0).val < 4096 := (i 0).isLt; have h1 : (i 1).val < 128 := (i 1).isLt; show ((i 0).val * 128 + (i 1).val) / 512 < 1024; omega⟩
  | ⟨1, _⟩ => ⟨((i 0).val * 128 + (i 1).val) / 128 % 4, by have h0 : (i 0).val < 4096 := (i 0).isLt; have h1 : (i 1).val < 128 := (i 1).isLt; show ((i 0).val * 128 + (i 1).val) / 128 % 4 < 4; omega⟩
  | ⟨2, _⟩ => ⟨((i 0).val * 128 + (i 1).val) % 128, by have h0 : (i 0).val < 4096 := (i 0).isLt; have h1 : (i 1).val < 128 := (i 1).isLt; show ((i 0).val * 128 + (i 1).val) % 128 < 128; omega⟩
theorem val_main_v186_apply (i : S4096x128.Idx) :
    val_main_v186 (F := F) x0 x1 x2 x3 x4 x5 x6 x7 x8 x9 x10 x11 x12 x13 x14 x15 x16 x17 x18 x19 x20 x21 i = val_main_v185 (F := F) x0 x1 x2 x3 x4 x5 x6 x7 x8 x9 x10 x11 x12 x13 x14 x15 x16 x17 x18 x19 x20 x21 (idx_main_v186 i) := by
  unfold val_main_v186
  generalize val_main_v185 (F := F) x0 x1 x2 x3 x4 x5 x6 x7 x8 x9 x10 x11 x12 x13 x14 x15 x16 x17 x18 x19 x20 x21 = y
  exact shapeCast_apply y shapeCasts_S1024x4x128_S4096x128 i (idx_main_v186 i)
    (by rewrite [Shape.rowMajor_val_three, Shape.rowMajor_val_two]; have h0 : (i 0).val < 4096 := (i 0).isLt; have h1 : (i 1).val < 128 := (i 1).isLt; show (((i 0).val * 128 + (i 1).val) / 512 * 4 + ((i 0).val * 128 + (i 1).val) / 128 % 4) * 128 + ((i 0).val * 128 + (i 1).val) % 128 = (i 0).val * 128 + (i 1).val; omega)

def val_main_v187 : (⟨S1024x4x1x128, .f32⟩ : BufTy).Contents (Elt F) :=
  extractStridedSlice S1024x4x1x128 ![0, 0, 1, 0] (val_main_v165 (F := F) x0 x1 x2 x3 x4 x5 x6 x7 x8 x9 x10 x11 x12 x13 x14 x15 x16 x17 x18 x19 x20 x21) slices_S1024x4x2x128_S1024x4x1x128_0_0_1_0
abbrev idx_main_v187 (i : S1024x4x1x128.Idx) : S1024x4x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v187_apply (i : S1024x4x1x128.Idx) :
    val_main_v187 (F := F) x0 x1 x2 x3 x4 x5 x6 x7 x8 x9 x10 x11 x12 x13 x14 x15 x16 x17 x18 x19 x20 x21 i = val_main_v165 (F := F) x0 x1 x2 x3 x4 x5 x6 x7 x8 x9 x10 x11 x12 x13 x14 x15 x16 x17 x18 x19 x20 x21 (idx_main_v187 i) := by
  unfold val_main_v187
  generalize val_main_v165 (F := F) x0 x1 x2 x3 x4 x5 x6 x7 x8 x9 x10 x11 x12 x13 x14 x15 x16 x17 x18 x19 x20 x21 = y
  exact extractStridedSlice_apply ![0, 0, 1, 0] y slices_S1024x4x2x128_S1024x4x1x128_0_0_1_0 i (idx_main_v187 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v188 : (⟨S1024x4x128, .f32⟩ : BufTy).Contents (Elt F) :=
  shapeCast _ (val_main_v187 (F := F) x0 x1 x2 x3 x4 x5 x6 x7 x8 x9 x10 x11 x12 x13 x14 x15 x16 x17 x18 x19 x20 x21) shapeCasts_S1024x4x1x128_S1024x4x128
abbrev idx_main_v188 (i : S1024x4x128.Idx) : S1024x4x1x128.Idx := fun a => match a with
  | ⟨0, _⟩ => ⟨(((i 0).val * 4 + (i 1).val) * 128 + (i 2).val) / 512, by have h0 : (i 0).val < 1024 := (i 0).isLt; have h1 : (i 1).val < 4 := (i 1).isLt; have h2 : (i 2).val < 128 := (i 2).isLt; show (((i 0).val * 4 + (i 1).val) * 128 + (i 2).val) / 512 < 1024; omega⟩
  | ⟨1, _⟩ => ⟨(((i 0).val * 4 + (i 1).val) * 128 + (i 2).val) / 128 % 4, by have h0 : (i 0).val < 1024 := (i 0).isLt; have h1 : (i 1).val < 4 := (i 1).isLt; have h2 : (i 2).val < 128 := (i 2).isLt; show (((i 0).val * 4 + (i 1).val) * 128 + (i 2).val) / 128 % 4 < 4; omega⟩
  | ⟨2, _⟩ => ⟨0, Nat.one_pos⟩
  | ⟨3, _⟩ => ⟨(((i 0).val * 4 + (i 1).val) * 128 + (i 2).val) % 128, by have h0 : (i 0).val < 1024 := (i 0).isLt; have h1 : (i 1).val < 4 := (i 1).isLt; have h2 : (i 2).val < 128 := (i 2).isLt; show (((i 0).val * 4 + (i 1).val) * 128 + (i 2).val) % 128 < 128; omega⟩
theorem val_main_v188_apply (i : S1024x4x128.Idx) :
    val_main_v188 (F := F) x0 x1 x2 x3 x4 x5 x6 x7 x8 x9 x10 x11 x12 x13 x14 x15 x16 x17 x18 x19 x20 x21 i = val_main_v187 (F := F) x0 x1 x2 x3 x4 x5 x6 x7 x8 x9 x10 x11 x12 x13 x14 x15 x16 x17 x18 x19 x20 x21 (idx_main_v188 i) := by
  unfold val_main_v188
  generalize val_main_v187 (F := F) x0 x1 x2 x3 x4 x5 x6 x7 x8 x9 x10 x11 x12 x13 x14 x15 x16 x17 x18 x19 x20 x21 = y
  exact shapeCast_apply y shapeCasts_S1024x4x1x128_S1024x4x128 i (idx_main_v188 i)
    (by rewrite [Shape.rowMajor_val_four, Shape.rowMajor_val_three]; have h0 : (i 0).val < 1024 := (i 0).isLt; have h1 : (i 1).val < 4 := (i 1).isLt; have h2 : (i 2).val < 128 := (i 2).isLt; show (((((i 0).val * 4 + (i 1).val) * 128 + (i 2).val) / 512 * 4 + (((i 0).val * 4 + (i 1).val) * 128 + (i 2).val) / 128 % 4) * 1 + 0) * 128 + (((i 0).val * 4 + (i 1).val) * 128 + (i 2).val) % 128 = ((i 0).val * 4 + (i 1).val) * 128 + (i 2).val; omega)

def val_main_v189 : (⟨S1024x4x128, .f32⟩ : BufTy).Contents (Elt F) :=
  broadcastInDim S1024x4x128 ![0, 1, 2] bcast_S1024x4x1_S1024x4x128_0_1_2 (val_main_v171 (F := F) x7)
abbrev idx_main_v189 (i : S1024x4x128.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v189_apply (i : S1024x4x128.Idx) :
    val_main_v189 (F := F) x7 i = val_main_v171 (F := F) x7 (idx_main_v189 i) := by
  unfold val_main_v189
  generalize val_main_v171 (F := F) x7 = y
  exact broadcastInDim_apply _ bcast_S1024x4x1_S1024x4x128_0_1_2 y i (idx_main_v189 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v190 : (⟨S1024x4x128, .f32⟩ : BufTy).Contents (Elt F) :=
  mulf (val_main_v188 (F := F) x0 x1 x2 x3 x4 x5 x6 x7 x8 x9 x10 x11 x12 x13 x14 x15 x16 x17 x18 x19 x20 x21) (val_main_v189 (F := F) x7)
theorem val_main_v190_apply (i : S1024x4x128.Idx) :
    val_main_v190 (F := F) x0 x1 x2 x3 x4 x5 x6 x7 x8 x9 x10 x11 x12 x13 x14 x15 x16 x17 x18 x19 x20 x21 i = FloatOps.mulf (val_main_v188 (F := F) x0 x1 x2 x3 x4 x5 x6 x7 x8 x9 x10 x11 x12 x13 x14 x15 x16 x17 x18 x19 x20 x21 i) (val_main_v189 (F := F) x7 i) := rfl

def val_main_v191 : (⟨S4096x128, .f32⟩ : BufTy).Contents (Elt F) :=
  shapeCast _ (val_main_v190 (F := F) x0 x1 x2 x3 x4 x5 x6 x7 x8 x9 x10 x11 x12 x13 x14 x15 x16 x17 x18 x19 x20 x21) shapeCasts_S1024x4x128_S4096x128
abbrev idx_main_v191 (i : S4096x128.Idx) : S1024x4x128.Idx := fun a => match a with
  | ⟨0, _⟩ => ⟨((i 0).val * 128 + (i 1).val) / 512, by have h0 : (i 0).val < 4096 := (i 0).isLt; have h1 : (i 1).val < 128 := (i 1).isLt; show ((i 0).val * 128 + (i 1).val) / 512 < 1024; omega⟩
  | ⟨1, _⟩ => ⟨((i 0).val * 128 + (i 1).val) / 128 % 4, by have h0 : (i 0).val < 4096 := (i 0).isLt; have h1 : (i 1).val < 128 := (i 1).isLt; show ((i 0).val * 128 + (i 1).val) / 128 % 4 < 4; omega⟩
  | ⟨2, _⟩ => ⟨((i 0).val * 128 + (i 1).val) % 128, by have h0 : (i 0).val < 4096 := (i 0).isLt; have h1 : (i 1).val < 128 := (i 1).isLt; show ((i 0).val * 128 + (i 1).val) % 128 < 128; omega⟩
theorem val_main_v191_apply (i : S4096x128.Idx) :
    val_main_v191 (F := F) x0 x1 x2 x3 x4 x5 x6 x7 x8 x9 x10 x11 x12 x13 x14 x15 x16 x17 x18 x19 x20 x21 i = val_main_v190 (F := F) x0 x1 x2 x3 x4 x5 x6 x7 x8 x9 x10 x11 x12 x13 x14 x15 x16 x17 x18 x19 x20 x21 (idx_main_v191 i) := by
  unfold val_main_v191
  generalize val_main_v190 (F := F) x0 x1 x2 x3 x4 x5 x6 x7 x8 x9 x10 x11 x12 x13 x14 x15 x16 x17 x18 x19 x20 x21 = y
  exact shapeCast_apply y shapeCasts_S1024x4x128_S4096x128 i (idx_main_v191 i)
    (by rewrite [Shape.rowMajor_val_three, Shape.rowMajor_val_two]; have h0 : (i 0).val < 4096 := (i 0).isLt; have h1 : (i 1).val < 128 := (i 1).isLt; show (((i 0).val * 128 + (i 1).val) / 512 * 4 + ((i 0).val * 128 + (i 1).val) / 128 % 4) * 128 + ((i 0).val * 128 + (i 1).val) % 128 = (i 0).val * 128 + (i 1).val; omega)

def val_main_v192 : (⟨S1024x4x1x128, .f32⟩ : BufTy).Contents (Elt F) :=
  extractStridedSlice S1024x4x1x128 ![0, 0, 1, 0] (val_main_v166 (F := F) x0 x1 x2 x3 x4 x5 x6 x7 x8 x9 x10 x11 x12 x13 x14 x15 x16 x17 x18 x19 x20 x21) slices_S1024x4x2x128_S1024x4x1x128_0_0_1_0
abbrev idx_main_v192 (i : S1024x4x1x128.Idx) : S1024x4x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v192_apply (i : S1024x4x1x128.Idx) :
    val_main_v192 (F := F) x0 x1 x2 x3 x4 x5 x6 x7 x8 x9 x10 x11 x12 x13 x14 x15 x16 x17 x18 x19 x20 x21 i = val_main_v166 (F := F) x0 x1 x2 x3 x4 x5 x6 x7 x8 x9 x10 x11 x12 x13 x14 x15 x16 x17 x18 x19 x20 x21 (idx_main_v192 i) := by
  unfold val_main_v192
  generalize val_main_v166 (F := F) x0 x1 x2 x3 x4 x5 x6 x7 x8 x9 x10 x11 x12 x13 x14 x15 x16 x17 x18 x19 x20 x21 = y
  exact extractStridedSlice_apply ![0, 0, 1, 0] y slices_S1024x4x2x128_S1024x4x1x128_0_0_1_0 i (idx_main_v192 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v193 : (⟨S1024x4x128, .f32⟩ : BufTy).Contents (Elt F) :=
  shapeCast _ (val_main_v192 (F := F) x0 x1 x2 x3 x4 x5 x6 x7 x8 x9 x10 x11 x12 x13 x14 x15 x16 x17 x18 x19 x20 x21) shapeCasts_S1024x4x1x128_S1024x4x128
abbrev idx_main_v193 (i : S1024x4x128.Idx) : S1024x4x1x128.Idx := fun a => match a with
  | ⟨0, _⟩ => ⟨(((i 0).val * 4 + (i 1).val) * 128 + (i 2).val) / 512, by have h0 : (i 0).val < 1024 := (i 0).isLt; have h1 : (i 1).val < 4 := (i 1).isLt; have h2 : (i 2).val < 128 := (i 2).isLt; show (((i 0).val * 4 + (i 1).val) * 128 + (i 2).val) / 512 < 1024; omega⟩
  | ⟨1, _⟩ => ⟨(((i 0).val * 4 + (i 1).val) * 128 + (i 2).val) / 128 % 4, by have h0 : (i 0).val < 1024 := (i 0).isLt; have h1 : (i 1).val < 4 := (i 1).isLt; have h2 : (i 2).val < 128 := (i 2).isLt; show (((i 0).val * 4 + (i 1).val) * 128 + (i 2).val) / 128 % 4 < 4; omega⟩
  | ⟨2, _⟩ => ⟨0, Nat.one_pos⟩
  | ⟨3, _⟩ => ⟨(((i 0).val * 4 + (i 1).val) * 128 + (i 2).val) % 128, by have h0 : (i 0).val < 1024 := (i 0).isLt; have h1 : (i 1).val < 4 := (i 1).isLt; have h2 : (i 2).val < 128 := (i 2).isLt; show (((i 0).val * 4 + (i 1).val) * 128 + (i 2).val) % 128 < 128; omega⟩
theorem val_main_v193_apply (i : S1024x4x128.Idx) :
    val_main_v193 (F := F) x0 x1 x2 x3 x4 x5 x6 x7 x8 x9 x10 x11 x12 x13 x14 x15 x16 x17 x18 x19 x20 x21 i = val_main_v192 (F := F) x0 x1 x2 x3 x4 x5 x6 x7 x8 x9 x10 x11 x12 x13 x14 x15 x16 x17 x18 x19 x20 x21 (idx_main_v193 i) := by
  unfold val_main_v193
  generalize val_main_v192 (F := F) x0 x1 x2 x3 x4 x5 x6 x7 x8 x9 x10 x11 x12 x13 x14 x15 x16 x17 x18 x19 x20 x21 = y
  exact shapeCast_apply y shapeCasts_S1024x4x1x128_S1024x4x128 i (idx_main_v193 i)
    (by rewrite [Shape.rowMajor_val_four, Shape.rowMajor_val_three]; have h0 : (i 0).val < 1024 := (i 0).isLt; have h1 : (i 1).val < 4 := (i 1).isLt; have h2 : (i 2).val < 128 := (i 2).isLt; show (((((i 0).val * 4 + (i 1).val) * 128 + (i 2).val) / 512 * 4 + (((i 0).val * 4 + (i 1).val) * 128 + (i 2).val) / 128 % 4) * 1 + 0) * 128 + (((i 0).val * 4 + (i 1).val) * 128 + (i 2).val) % 128 = ((i 0).val * 4 + (i 1).val) * 128 + (i 2).val; omega)

def val_main_v194 : (⟨S1024x4x128, .f32⟩ : BufTy).Contents (Elt F) :=
  broadcastInDim S1024x4x128 ![0, 1, 2] bcast_S1024x4x1_S1024x4x128_0_1_2 (val_main_v171 (F := F) x7)
abbrev idx_main_v194 (i : S1024x4x128.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v194_apply (i : S1024x4x128.Idx) :
    val_main_v194 (F := F) x7 i = val_main_v171 (F := F) x7 (idx_main_v194 i) := by
  unfold val_main_v194
  generalize val_main_v171 (F := F) x7 = y
  exact broadcastInDim_apply _ bcast_S1024x4x1_S1024x4x128_0_1_2 y i (idx_main_v194 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v195 : (⟨S1024x4x128, .f32⟩ : BufTy).Contents (Elt F) :=
  mulf (val_main_v193 (F := F) x0 x1 x2 x3 x4 x5 x6 x7 x8 x9 x10 x11 x12 x13 x14 x15 x16 x17 x18 x19 x20 x21) (val_main_v194 (F := F) x7)
theorem val_main_v195_apply (i : S1024x4x128.Idx) :
    val_main_v195 (F := F) x0 x1 x2 x3 x4 x5 x6 x7 x8 x9 x10 x11 x12 x13 x14 x15 x16 x17 x18 x19 x20 x21 i = FloatOps.mulf (val_main_v193 (F := F) x0 x1 x2 x3 x4 x5 x6 x7 x8 x9 x10 x11 x12 x13 x14 x15 x16 x17 x18 x19 x20 x21 i) (val_main_v194 (F := F) x7 i) := rfl

def val_main_v196 : (⟨S4096x128, .f32⟩ : BufTy).Contents (Elt F) :=
  shapeCast _ (val_main_v195 (F := F) x0 x1 x2 x3 x4 x5 x6 x7 x8 x9 x10 x11 x12 x13 x14 x15 x16 x17 x18 x19 x20 x21) shapeCasts_S1024x4x128_S4096x128
abbrev idx_main_v196 (i : S4096x128.Idx) : S1024x4x128.Idx := fun a => match a with
  | ⟨0, _⟩ => ⟨((i 0).val * 128 + (i 1).val) / 512, by have h0 : (i 0).val < 4096 := (i 0).isLt; have h1 : (i 1).val < 128 := (i 1).isLt; show ((i 0).val * 128 + (i 1).val) / 512 < 1024; omega⟩
  | ⟨1, _⟩ => ⟨((i 0).val * 128 + (i 1).val) / 128 % 4, by have h0 : (i 0).val < 4096 := (i 0).isLt; have h1 : (i 1).val < 128 := (i 1).isLt; show ((i 0).val * 128 + (i 1).val) / 128 % 4 < 4; omega⟩
  | ⟨2, _⟩ => ⟨((i 0).val * 128 + (i 1).val) % 128, by have h0 : (i 0).val < 4096 := (i 0).isLt; have h1 : (i 1).val < 128 := (i 1).isLt; show ((i 0).val * 128 + (i 1).val) % 128 < 128; omega⟩
theorem val_main_v196_apply (i : S4096x128.Idx) :
    val_main_v196 (F := F) x0 x1 x2 x3 x4 x5 x6 x7 x8 x9 x10 x11 x12 x13 x14 x15 x16 x17 x18 x19 x20 x21 i = val_main_v195 (F := F) x0 x1 x2 x3 x4 x5 x6 x7 x8 x9 x10 x11 x12 x13 x14 x15 x16 x17 x18 x19 x20 x21 (idx_main_v196 i) := by
  unfold val_main_v196
  generalize val_main_v195 (F := F) x0 x1 x2 x3 x4 x5 x6 x7 x8 x9 x10 x11 x12 x13 x14 x15 x16 x17 x18 x19 x20 x21 = y
  exact shapeCast_apply y shapeCasts_S1024x4x128_S4096x128 i (idx_main_v196 i)
    (by rewrite [Shape.rowMajor_val_three, Shape.rowMajor_val_two]; have h0 : (i 0).val < 4096 := (i 0).isLt; have h1 : (i 1).val < 128 := (i 1).isLt; show (((i 0).val * 128 + (i 1).val) / 512 * 4 + ((i 0).val * 128 + (i 1).val) / 128 % 4) * 128 + ((i 0).val * 128 + (i 1).val) % 128 = (i 0).val * 128 + (i 1).val; omega)

def val_main_v197 : (⟨S1024x4x1x128, .f32⟩ : BufTy).Contents (Elt F) :=
  extractStridedSlice S1024x4x1x128 ![0, 0, 1, 0] (val_main_v167 (F := F) x0 x1 x2 x3 x4 x5 x6 x7 x8 x9 x10 x11 x12 x13 x14 x15 x16 x17 x18 x19 x20 x21) slices_S1024x4x2x128_S1024x4x1x128_0_0_1_0
abbrev idx_main_v197 (i : S1024x4x1x128.Idx) : S1024x4x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v197_apply (i : S1024x4x1x128.Idx) :
    val_main_v197 (F := F) x0 x1 x2 x3 x4 x5 x6 x7 x8 x9 x10 x11 x12 x13 x14 x15 x16 x17 x18 x19 x20 x21 i = val_main_v167 (F := F) x0 x1 x2 x3 x4 x5 x6 x7 x8 x9 x10 x11 x12 x13 x14 x15 x16 x17 x18 x19 x20 x21 (idx_main_v197 i) := by
  unfold val_main_v197
  generalize val_main_v167 (F := F) x0 x1 x2 x3 x4 x5 x6 x7 x8 x9 x10 x11 x12 x13 x14 x15 x16 x17 x18 x19 x20 x21 = y
  exact extractStridedSlice_apply ![0, 0, 1, 0] y slices_S1024x4x2x128_S1024x4x1x128_0_0_1_0 i (idx_main_v197 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v198 : (⟨S1024x4x128, .f32⟩ : BufTy).Contents (Elt F) :=
  shapeCast _ (val_main_v197 (F := F) x0 x1 x2 x3 x4 x5 x6 x7 x8 x9 x10 x11 x12 x13 x14 x15 x16 x17 x18 x19 x20 x21) shapeCasts_S1024x4x1x128_S1024x4x128
abbrev idx_main_v198 (i : S1024x4x128.Idx) : S1024x4x1x128.Idx := fun a => match a with
  | ⟨0, _⟩ => ⟨(((i 0).val * 4 + (i 1).val) * 128 + (i 2).val) / 512, by have h0 : (i 0).val < 1024 := (i 0).isLt; have h1 : (i 1).val < 4 := (i 1).isLt; have h2 : (i 2).val < 128 := (i 2).isLt; show (((i 0).val * 4 + (i 1).val) * 128 + (i 2).val) / 512 < 1024; omega⟩
  | ⟨1, _⟩ => ⟨(((i 0).val * 4 + (i 1).val) * 128 + (i 2).val) / 128 % 4, by have h0 : (i 0).val < 1024 := (i 0).isLt; have h1 : (i 1).val < 4 := (i 1).isLt; have h2 : (i 2).val < 128 := (i 2).isLt; show (((i 0).val * 4 + (i 1).val) * 128 + (i 2).val) / 128 % 4 < 4; omega⟩
  | ⟨2, _⟩ => ⟨0, Nat.one_pos⟩
  | ⟨3, _⟩ => ⟨(((i 0).val * 4 + (i 1).val) * 128 + (i 2).val) % 128, by have h0 : (i 0).val < 1024 := (i 0).isLt; have h1 : (i 1).val < 4 := (i 1).isLt; have h2 : (i 2).val < 128 := (i 2).isLt; show (((i 0).val * 4 + (i 1).val) * 128 + (i 2).val) % 128 < 128; omega⟩
theorem val_main_v198_apply (i : S1024x4x128.Idx) :
    val_main_v198 (F := F) x0 x1 x2 x3 x4 x5 x6 x7 x8 x9 x10 x11 x12 x13 x14 x15 x16 x17 x18 x19 x20 x21 i = val_main_v197 (F := F) x0 x1 x2 x3 x4 x5 x6 x7 x8 x9 x10 x11 x12 x13 x14 x15 x16 x17 x18 x19 x20 x21 (idx_main_v198 i) := by
  unfold val_main_v198
  generalize val_main_v197 (F := F) x0 x1 x2 x3 x4 x5 x6 x7 x8 x9 x10 x11 x12 x13 x14 x15 x16 x17 x18 x19 x20 x21 = y
  exact shapeCast_apply y shapeCasts_S1024x4x1x128_S1024x4x128 i (idx_main_v198 i)
    (by rewrite [Shape.rowMajor_val_four, Shape.rowMajor_val_three]; have h0 : (i 0).val < 1024 := (i 0).isLt; have h1 : (i 1).val < 4 := (i 1).isLt; have h2 : (i 2).val < 128 := (i 2).isLt; show (((((i 0).val * 4 + (i 1).val) * 128 + (i 2).val) / 512 * 4 + (((i 0).val * 4 + (i 1).val) * 128 + (i 2).val) / 128 % 4) * 1 + 0) * 128 + (((i 0).val * 4 + (i 1).val) * 128 + (i 2).val) % 128 = ((i 0).val * 4 + (i 1).val) * 128 + (i 2).val; omega)

def val_main_v199 : (⟨S1024x4x128, .f32⟩ : BufTy).Contents (Elt F) :=
  broadcastInDim S1024x4x128 ![0, 1, 2] bcast_S1024x4x1_S1024x4x128_0_1_2 (val_main_v171 (F := F) x7)
abbrev idx_main_v199 (i : S1024x4x128.Idx) : S1024x4x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v199_apply (i : S1024x4x128.Idx) :
    val_main_v199 (F := F) x7 i = val_main_v171 (F := F) x7 (idx_main_v199 i) := by
  unfold val_main_v199
  generalize val_main_v171 (F := F) x7 = y
  exact broadcastInDim_apply _ bcast_S1024x4x1_S1024x4x128_0_1_2 y i (idx_main_v199 i) (fun a => match a with
    | ⟨0, _⟩ => by show (i 0).val = if (1024 : Nat) = 1 then 0 else (i 0).val; rw [if_neg (by decide)]
    | ⟨1, _⟩ => by show (i 1).val = if (4 : Nat) = 1 then 0 else (i 1).val; rw [if_neg (by decide)]
    | ⟨2, _⟩ => by show 0 = if (1 : Nat) = 1 then 0 else (i 2).val; rw [if_pos rfl])

def val_main_v200 : (⟨S1024x4x128, .f32⟩ : BufTy).Contents (Elt F) :=
  mulf (val_main_v198 (F := F) x0 x1 x2 x3 x4 x5 x6 x7 x8 x9 x10 x11 x12 x13 x14 x15 x16 x17 x18 x19 x20 x21) (val_main_v199 (F := F) x7)
theorem val_main_v200_apply (i : S1024x4x128.Idx) :
    val_main_v200 (F := F) x0 x1 x2 x3 x4 x5 x6 x7 x8 x9 x10 x11 x12 x13 x14 x15 x16 x17 x18 x19 x20 x21 i = FloatOps.mulf (val_main_v198 (F := F) x0 x1 x2 x3 x4 x5 x6 x7 x8 x9 x10 x11 x12 x13 x14 x15 x16 x17 x18 x19 x20 x21 i) (val_main_v199 (F := F) x7 i) := rfl

def val_main_v201 : (⟨S4096x128, .f32⟩ : BufTy).Contents (Elt F) :=
  shapeCast _ (val_main_v200 (F := F) x0 x1 x2 x3 x4 x5 x6 x7 x8 x9 x10 x11 x12 x13 x14 x15 x16 x17 x18 x19 x20 x21) shapeCasts_S1024x4x128_S4096x128
abbrev idx_main_v201 (i : S4096x128.Idx) : S1024x4x128.Idx := fun a => match a with
  | ⟨0, _⟩ => ⟨((i 0).val * 128 + (i 1).val) / 512, by have h0 : (i 0).val < 4096 := (i 0).isLt; have h1 : (i 1).val < 128 := (i 1).isLt; show ((i 0).val * 128 + (i 1).val) / 512 < 1024; omega⟩
  | ⟨1, _⟩ => ⟨((i 0).val * 128 + (i 1).val) / 128 % 4, by have h0 : (i 0).val < 4096 := (i 0).isLt; have h1 : (i 1).val < 128 := (i 1).isLt; show ((i 0).val * 128 + (i 1).val) / 128 % 4 < 4; omega⟩
  | ⟨2, _⟩ => ⟨((i 0).val * 128 + (i 1).val) % 128, by have h0 : (i 0).val < 4096 := (i 0).isLt; have h1 : (i 1).val < 128 := (i 1).isLt; show ((i 0).val * 128 + (i 1).val) % 128 < 128; omega⟩
theorem val_main_v201_apply (i : S4096x128.Idx) :
    val_main_v201 (F := F) x0 x1 x2 x3 x4 x5 x6 x7 x8 x9 x10 x11 x12 x13 x14 x15 x16 x17 x18 x19 x20 x21 i = val_main_v200 (F := F) x0 x1 x2 x3 x4 x5 x6 x7 x8 x9 x10 x11 x12 x13 x14 x15 x16 x17 x18 x19 x20 x21 (idx_main_v201 i) := by
  unfold val_main_v201
  generalize val_main_v200 (F := F) x0 x1 x2 x3 x4 x5 x6 x7 x8 x9 x10 x11 x12 x13 x14 x15 x16 x17 x18 x19 x20 x21 = y
  exact shapeCast_apply y shapeCasts_S1024x4x128_S4096x128 i (idx_main_v201 i)
    (by rewrite [Shape.rowMajor_val_three, Shape.rowMajor_val_two]; have h0 : (i 0).val < 4096 := (i 0).isLt; have h1 : (i 1).val < 128 := (i 1).isLt; show (((i 0).val * 128 + (i 1).val) / 512 * 4 + ((i 0).val * 128 + (i 1).val) / 128 % 4) * 128 + ((i 0).val * 128 + (i 1).val) % 128 = (i 0).val * 128 + (i 1).val; omega)

def val_main_v202 : (⟨S4096x128, .f32⟩ : BufTy).Contents (Elt F) :=
  extractStridedSlice S4096x128 ![3072, 0] (val_main_v3 (F := F) x0 x8 x9) slices_S64512x128_S4096x128_3072_0
abbrev idx_main_v202 (i : S4096x128.Idx) : S64512x128.Idx := fun a => match a with
  | ⟨0, _⟩ => ⟨3072 + (i 0).val, by have h0 : (i 0).val < 4096 := (i 0).isLt; show 3072 + (i 0).val < 64512; omega⟩
  | ⟨1, _⟩ => ⟨(i 1).val, (i 1).isLt⟩
theorem val_main_v202_apply (i : S4096x128.Idx) :
    val_main_v202 (F := F) x0 x8 x9 i = val_main_v3 (F := F) x0 x8 x9 (idx_main_v202 i) := by
  unfold val_main_v202
  generalize val_main_v3 (F := F) x0 x8 x9 = y
  exact extractStridedSlice_apply ![3072, 0] y slices_S64512x128_S4096x128_3072_0 i (idx_main_v202 i) (fun a => match a with
    | ⟨0, _⟩ => by show 3072 + (i 0).val = 3072 + (i 0).val; omega
    | ⟨1, _⟩ => by show (i 1).val = 0 + (i 1).val; omega)

def val_main_v203 : (⟨S4096x128, .f32⟩ : BufTy).Contents (Elt F) :=
  extractStridedSlice S4096x128 ![3072, 0] (val_main_v7 (F := F) x1 x10 x11) slices_S64512x128_S4096x128_3072_0
abbrev idx_main_v203 (i : S4096x128.Idx) : S64512x128.Idx := fun a => match a with
  | ⟨0, _⟩ => ⟨3072 + (i 0).val, by have h0 : (i 0).val < 4096 := (i 0).isLt; show 3072 + (i 0).val < 64512; omega⟩
  | ⟨1, _⟩ => ⟨(i 1).val, (i 1).isLt⟩
theorem val_main_v203_apply (i : S4096x128.Idx) :
    val_main_v203 (F := F) x1 x10 x11 i = val_main_v7 (F := F) x1 x10 x11 (idx_main_v203 i) := by
  unfold val_main_v203
  generalize val_main_v7 (F := F) x1 x10 x11 = y
  exact extractStridedSlice_apply ![3072, 0] y slices_S64512x128_S4096x128_3072_0 i (idx_main_v203 i) (fun a => match a with
    | ⟨0, _⟩ => by show 3072 + (i 0).val = 3072 + (i 0).val; omega
    | ⟨1, _⟩ => by show (i 1).val = 0 + (i 1).val; omega)

def val_main_v204 : (⟨S4096x128, .f32⟩ : BufTy).Contents (Elt F) :=
  extractStridedSlice S4096x128 ![3072, 0] (val_main_v19 (F := F) x3 x14 x15) slices_S64512x128_S4096x128_3072_0
abbrev idx_main_v204 (i : S4096x128.Idx) : S64512x128.Idx := fun a => match a with
  | ⟨0, _⟩ => ⟨3072 + (i 0).val, by have h0 : (i 0).val < 4096 := (i 0).isLt; show 3072 + (i 0).val < 64512; omega⟩
  | ⟨1, _⟩ => ⟨(i 1).val, (i 1).isLt⟩
theorem val_main_v204_apply (i : S4096x128.Idx) :
    val_main_v204 (F := F) x3 x14 x15 i = val_main_v19 (F := F) x3 x14 x15 (idx_main_v204 i) := by
  unfold val_main_v204
  generalize val_main_v19 (F := F) x3 x14 x15 = y
  exact extractStridedSlice_apply ![3072, 0] y slices_S64512x128_S4096x128_3072_0 i (idx_main_v204 i) (fun a => match a with
    | ⟨0, _⟩ => by show 3072 + (i 0).val = 3072 + (i 0).val; omega
    | ⟨1, _⟩ => by show (i 1).val = 0 + (i 1).val; omega)

def val_main_v205 : (⟨S4096x128, .f32⟩ : BufTy).Contents (Elt F) :=
  extractStridedSlice S4096x128 ![3072, 0] (val_main_v24 (F := F) x4 x14 x15) slices_S64512x128_S4096x128_3072_0
abbrev idx_main_v205 (i : S4096x128.Idx) : S64512x128.Idx := fun a => match a with
  | ⟨0, _⟩ => ⟨3072 + (i 0).val, by have h0 : (i 0).val < 4096 := (i 0).isLt; show 3072 + (i 0).val < 64512; omega⟩
  | ⟨1, _⟩ => ⟨(i 1).val, (i 1).isLt⟩
theorem val_main_v205_apply (i : S4096x128.Idx) :
    val_main_v205 (F := F) x4 x14 x15 i = val_main_v24 (F := F) x4 x14 x15 (idx_main_v205 i) := by
  unfold val_main_v205
  generalize val_main_v24 (F := F) x4 x14 x15 = y
  exact extractStridedSlice_apply ![3072, 0] y slices_S64512x128_S4096x128_3072_0 i (idx_main_v205 i) (fun a => match a with
    | ⟨0, _⟩ => by show 3072 + (i 0).val = 3072 + (i 0).val; omega
    | ⟨1, _⟩ => by show (i 1).val = 0 + (i 1).val; omega)

def val_main_v206 : (⟨S4096x128, .f32⟩ : BufTy).Contents (Elt F) :=
  extractStridedSlice S4096x128 ![3072, 0] (val_main_v14 (F := F) x2 x5 x12 x13) slices_S64512x128_S4096x128_3072_0
abbrev idx_main_v206 (i : S4096x128.Idx) : S64512x128.Idx := fun a => match a with
  | ⟨0, _⟩ => ⟨3072 + (i 0).val, by have h0 : (i 0).val < 4096 := (i 0).isLt; show 3072 + (i 0).val < 64512; omega⟩
  | ⟨1, _⟩ => ⟨(i 1).val, (i 1).isLt⟩
theorem val_main_v206_apply (i : S4096x128.Idx) :
    val_main_v206 (F := F) x2 x5 x12 x13 i = val_main_v14 (F := F) x2 x5 x12 x13 (idx_main_v206 i) := by
  unfold val_main_v206
  generalize val_main_v14 (F := F) x2 x5 x12 x13 = y
  exact extractStridedSlice_apply ![3072, 0] y slices_S64512x128_S4096x128_3072_0 i (idx_main_v206 i) (fun a => match a with
    | ⟨0, _⟩ => by show 3072 + (i 0).val = 3072 + (i 0).val; omega
    | ⟨1, _⟩ => by show (i 1).val = 0 + (i 1).val; omega)

def val_main_v207 : (⟨S4096x1408, .f32⟩ : BufTy).Contents (Elt F) :=
  concatenate S4096x1408 1 [⟨S4096x128, (val_main_v202 (F := F) x0 x8 x9)⟩, ⟨S4096x128, (val_main_v203 (F := F) x1 x10 x11)⟩, ⟨S4096x128, (val_main_v204 (F := F) x3 x14 x15)⟩, ⟨S4096x128, (val_main_v205 (F := F) x4 x14 x15)⟩, ⟨S4096x128, (val_main_v206 (F := F) x2 x5 x12 x13)⟩, ⟨S4096x128, (val_main_v176 (F := F) x0 x1 x2 x3 x4 x5 x6 x7 x8 x9 x10 x11 x12 x13 x14 x15 x16 x17 x18 x19 x20 x21)⟩, ⟨S4096x128, (val_main_v191 (F := F) x0 x1 x2 x3 x4 x5 x6 x7 x8 x9 x10 x11 x12 x13 x14 x15 x16 x17 x18 x19 x20 x21)⟩, ⟨S4096x128, (val_main_v181 (F := F) x0 x1 x2 x3 x4 x5 x6 x7 x8 x9 x10 x11 x12 x13 x14 x15 x16 x17 x18 x19 x20 x21)⟩, ⟨S4096x128, (val_main_v186 (F := F) x0 x1 x2 x3 x4 x5 x6 x7 x8 x9 x10 x11 x12 x13 x14 x15 x16 x17 x18 x19 x20 x21)⟩, ⟨S4096x128, (val_main_v196 (F := F) x0 x1 x2 x3 x4 x5 x6 x7 x8 x9 x10 x11 x12 x13 x14 x15 x16 x17 x18 x19 x20 x21)⟩, ⟨S4096x128, (val_main_v201 (F := F) x0 x1 x2 x3 x4 x5 x6 x7 x8 x9 x10 x11 x12 x13 x14 x15 x16 x17 x18 x19 x20 x21)⟩] concatenates_S4096x128_S4096x128_S4096x128_S4096x128_S4096x128_S4096x128_S4096x128_S4096x128_S4096x128_S4096x128_S4096x128_S4096x1408_d1

def val_main_v208 : (⟨S4096x512, .f32⟩ : BufTy).Contents (Elt F) :=
  Host.dotGeneral dot_S4096x1408_S1408x512_S4096x512_1_0_0_1_n_n none (val_main_v207 (F := F) x0 x1 x2 x3 x4 x5 x6 x7 x8 x9 x10 x11 x12 x13 x14 x15 x16 x17 x18 x19 x20 x21) (x16)
theorem lhs_main_v208_0 (i : S4096x512.Idx) (q : dot_S4096x1408_S1408x512_S4096x512_1_0_0_1_n_n.contr.Idx) :
    (dot_S4096x1408_S1408x512_S4096x512_1_0_0_1_n_n.lhsIdx i q 0).val = (i 0).val := by
  unfold DotDims.lhsIdx
  rw [dif_neg (show ¬(0 : Fin S4096x1408.rank) ∈ dot_S4096x1408_S1408x512_S4096x512_1_0_0_1_n_n.lhsBatch by decide), dif_pos (show (0 : Fin S4096x1408.rank) ∈ dot_S4096x1408_S1408x512_S4096x512_1_0_0_1_n_n.lhsNonContracting by decide)]
  rfl
theorem lhs_main_v208_1 (i : S4096x512.Idx) (q : dot_S4096x1408_S1408x512_S4096x512_1_0_0_1_n_n.contr.Idx) :
    (dot_S4096x1408_S1408x512_S4096x512_1_0_0_1_n_n.lhsIdx i q 1).val = (q ⟨0, by decide⟩).val :=
  dot_S4096x1408_S1408x512_S4096x512_1_0_0_1_n_n.lhsIdx_val_of_single rfl i q
theorem rhs_main_v208_0 (i : S4096x512.Idx) (q : dot_S4096x1408_S1408x512_S4096x512_1_0_0_1_n_n.contr.Idx) :
    (dot_S4096x1408_S1408x512_S4096x512_1_0_0_1_n_n.rhsIdx i q 0).val = (q ⟨0, by decide⟩).val :=
  dot_S4096x1408_S1408x512_S4096x512_1_0_0_1_n_n.rhsIdx_val_of_single rfl i q
theorem rhs_main_v208_1 (i : S4096x512.Idx) (q : dot_S4096x1408_S1408x512_S4096x512_1_0_0_1_n_n.contr.Idx) :
    (dot_S4096x1408_S1408x512_S4096x512_1_0_0_1_n_n.rhsIdx i q 1).val = (i 1).val := by
  unfold DotDims.rhsIdx
  rw [dif_neg (show ¬(1 : Fin S1408x512.rank) ∈ dot_S4096x1408_S1408x512_S4096x512_1_0_0_1_n_n.rhsBatch by decide), dif_pos (show (1 : Fin S1408x512.rank) ∈ dot_S4096x1408_S1408x512_S4096x512_1_0_0_1_n_n.rhsNonContracting by decide)]
  rfl
abbrev lidx_main_v208 (i : S4096x512.Idx) (k : Fin 1408) : S4096x1408.Idx := fun a => match a with
  | ⟨0, _⟩ => ⟨(i 0).val, (i 0).isLt⟩
  | ⟨1, _⟩ => ⟨k.val, k.isLt⟩
abbrev ridx_main_v208 (i : S4096x512.Idx) (k : Fin 1408) : S1408x512.Idx := fun a => match a with
  | ⟨0, _⟩ => ⟨k.val, k.isLt⟩
  | ⟨1, _⟩ => ⟨(i 1).val, (i 1).isLt⟩

theorem val_main_v208_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S4096x512.Idx) :
    val_main_v208 (F := Ideal) x0 x1 x2 x3 x4 x5 x6 x7 x8 x9 x10 x11 x12 x13 x14 x15 x16 x17 x18 x19 x20 x21 i = ∑ k : Fin 1408, (val_main_v207 (F := Ideal) x0 x1 x2 x3 x4 x5 x6 x7 x8 x9 x10 x11 x12 x13 x14 x15 x16 x17 x18 x19 x20 x21) (lidx_main_v208 i k) * x16 (ridx_main_v208 i k) := by
  unfold val_main_v208
  generalize val_main_v207 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S4096x1408_S1408x512_S4096x512_1_0_0_1_n_n 1408 rfl rfl).symm]
  refine Finset.sum_congr rfl fun k _ => ?_
  have hk := ValueIdx.contrEquiv1_symm_val dot_S4096x1408_S1408x512_S4096x512_1_0_0_1_n_n 1408 rfl rfl k
  have el : dot_S4096x1408_S1408x512_S4096x512_1_0_0_1_n_n.lhsIdx i ((ValueIdx.contrEquiv1 dot_S4096x1408_S1408x512_S4096x512_1_0_0_1_n_n 1408 rfl rfl).symm k) = lidx_main_v208 i k := funext fun a => Fin.ext (by
    match a with
    | ⟨0, _⟩ => exact lhs_main_v208_0 _ _
    | ⟨1, _⟩ => exact (lhs_main_v208_1 _ _).trans hk)
  have er : dot_S4096x1408_S1408x512_S4096x512_1_0_0_1_n_n.rhsIdx i ((ValueIdx.contrEquiv1 dot_S4096x1408_S1408x512_S4096x512_1_0_0_1_n_n 1408 rfl rfl).symm k) = ridx_main_v208 i k := funext fun a => Fin.ext (by
    match a with
    | ⟨0, _⟩ => exact (rhs_main_v208_0 _ _).trans hk
    | ⟨1, _⟩ => exact rhs_main_v208_1 _ _)
  rw [el, er]

def val_main_v209 : (⟨S1x512, .f32⟩ : BufTy).Contents (Elt F) :=
  broadcastInDim S1x512 ![1] bcast_S512_S1x512_1 (x17)
abbrev idx_main_v209 (i : S1x512.Idx) : S512.Idx := fun a => match a with
  | ⟨0, _⟩ => ⟨(i 1).val, (i 1).isLt⟩
theorem val_main_v209_apply (i : S1x512.Idx) :
    val_main_v209 (F := F) x17 i = x17 (idx_main_v209 i) := by
  unfold val_main_v209
  exact broadcastInDim_apply _ bcast_S512_S1x512_1 x17 i (idx_main_v209 i) (fun a => match a with
    | ⟨0, _⟩ => by show (i 1).val = if (512 : Nat) = 1 then 0 else (i 1).val; rw [if_neg (by decide)])

def val_main_v210 : (⟨S4096x512, .f32⟩ : BufTy).Contents (Elt F) :=
  broadcastInDim S4096x512 ![0, 1] bcast_S1x512_S4096x512_0_1 (val_main_v209 (F := F) x17)
abbrev idx_main_v210 (i : S4096x512.Idx) : S1x512.Idx := fun a => match a with
  | ⟨0, _⟩ => ⟨0, Nat.one_pos⟩
  | ⟨1, _⟩ => ⟨(i 1).val, (i 1).isLt⟩
theorem val_main_v210_apply (i : S4096x512.Idx) :
    val_main_v210 (F := F) x17 i = val_main_v209 (F := F) x17 (idx_main_v210 i) := by
  unfold val_main_v210
  generalize val_main_v209 (F := F) x17 = y
  exact broadcastInDim_apply _ bcast_S1x512_S4096x512_0_1 y i (idx_main_v210 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v211 : (⟨S4096x512, .f32⟩ : BufTy).Contents (Elt F) :=
  addf (val_main_v208 (F := F) x0 x1 x2 x3 x4 x5 x6 x7 x8 x9 x10 x11 x12 x13 x14 x15 x16 x17 x18 x19 x20 x21) (val_main_v210 (F := F) x17)
theorem val_main_v211_apply (i : S4096x512.Idx) :
    val_main_v211 (F := F) x0 x1 x2 x3 x4 x5 x6 x7 x8 x9 x10 x11 x12 x13 x14 x15 x16 x17 x18 x19 x20 x21 i = FloatOps.addf (val_main_v208 (F := F) x0 x1 x2 x3 x4 x5 x6 x7 x8 x9 x10 x11 x12 x13 x14 x15 x16 x17 x18 x19 x20 x21 i) (val_main_v210 (F := F) x17 i) := rfl

def val_main_call9_cst : (⟨S_, .f32⟩ : BufTy).Contents (Elt F) :=
  constant S_ .f32 0x00000000#32
theorem val_main_call9_cst_apply (i : S_.Idx) :
    val_main_call9_cst (F := F) i = FloatOps.ofBits .f32 0x00000000#32 := rfl

def val_main_call9_v0 : (⟨S4096x512, .f32⟩ : BufTy).Contents (Elt F) :=
  broadcastInDim S4096x512 ![] bcast_S_S4096x512 (val_main_call9_cst (F := F))
abbrev idx_main_call9_v0 (i : S4096x512.Idx) : S_.Idx := fun a => a.elim0
theorem val_main_call9_v0_apply (i : S4096x512.Idx) :
    val_main_call9_v0 (F := F) i = val_main_call9_cst (F := F) (idx_main_call9_v0 i) := by
  unfold val_main_call9_v0
  generalize val_main_call9_cst (F := F) = y
  exact broadcastInDim_apply _ bcast_S_S4096x512 y i (idx_main_call9_v0 i) (fun a => a.elim0)

def val_main_v212 : (⟨S4096x512, .f32⟩ : BufTy).Contents (Elt F) :=
  maximumf (val_main_v211 (F := F) x0 x1 x2 x3 x4 x5 x6 x7 x8 x9 x10 x11 x12 x13 x14 x15 x16 x17 x18 x19 x20 x21) (val_main_call9_v0 (F := F))
theorem val_main_v212_apply (i : S4096x512.Idx) :
    val_main_v212 (F := F) x0 x1 x2 x3 x4 x5 x6 x7 x8 x9 x10 x11 x12 x13 x14 x15 x16 x17 x18 x19 x20 x21 i = FloatOps.maximumf (val_main_v211 (F := F) x0 x1 x2 x3 x4 x5 x6 x7 x8 x9 x10 x11 x12 x13 x14 x15 x16 x17 x18 x19 x20 x21 i) (val_main_call9_v0 (F := F) i) := rfl

def val_main_v213 : (⟨S4096x256, .f32⟩ : BufTy).Contents (Elt F) :=
  Host.dotGeneral dot_S4096x512_S512x256_S4096x256_1_0_0_1_n_n none (val_main_v212 (F := F) x0 x1 x2 x3 x4 x5 x6 x7 x8 x9 x10 x11 x12 x13 x14 x15 x16 x17 x18 x19 x20 x21) (x18)
theorem lhs_main_v213_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs_main_v213_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
theorem rhs_main_v213_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
theorem rhs_main_v213_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl
abbrev lidx_main_v213 (i : S4096x256.Idx) (k : Fin 512) : S4096x512.Idx := fun a => match a with
  | ⟨0, _⟩ => ⟨(i 0).val, (i 0).isLt⟩
  | ⟨1, _⟩ => ⟨k.val, k.isLt⟩
abbrev ridx_main_v213 (i : S4096x256.Idx) (k : Fin 512) : S512x256.Idx := fun a => match a with
  | ⟨0, _⟩ => ⟨k.val, k.isLt⟩
  | ⟨1, _⟩ => ⟨(i 1).val, (i 1).isLt⟩

theorem val_main_v213_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S4096x256.Idx) :
    val_main_v213 (F := Ideal) x0 x1 x2 x3 x4 x5 x6 x7 x8 x9 x10 x11 x12 x13 x14 x15 x16 x17 x18 x19 x20 x21 i = ∑ k : Fin 512, (val_main_v212 (F := Ideal) x0 x1 x2 x3 x4 x5 x6 x7 x8 x9 x10 x11 x12 x13 x14 x15 x16 x17 x18 x19 x20 x21) (lidx_main_v213 i k) * x18 (ridx_main_v213 i k) := by
  unfold val_main_v213
  generalize val_main_v212 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S4096x512_S512x256_S4096x256_1_0_0_1_n_n 512 rfl rfl).symm]
  refine Finset.sum_congr rfl fun k _ => ?_
  have hk := ValueIdx.contrEquiv1_symm_val dot_S4096x512_S512x256_S4096x256_1_0_0_1_n_n 512 rfl rfl k
  have el : dot_S4096x512_S512x256_S4096x256_1_0_0_1_n_n.lhsIdx i ((ValueIdx.contrEquiv1 dot_S4096x512_S512x256_S4096x256_1_0_0_1_n_n 512 rfl rfl).symm k) = lidx_main_v213 i k := funext fun a => Fin.ext (by
    match a with
    | ⟨0, _⟩ => exact lhs_main_v213_0 _ _
    | ⟨1, _⟩ => exact (lhs_main_v213_1 _ _).trans hk)
  have er : dot_S4096x512_S512x256_S4096x256_1_0_0_1_n_n.rhsIdx i ((ValueIdx.contrEquiv1 dot_S4096x512_S512x256_S4096x256_1_0_0_1_n_n 512 rfl rfl).symm k) = ridx_main_v213 i k := funext fun a => Fin.ext (by
    match a with
    | ⟨0, _⟩ => exact (rhs_main_v213_0 _ _).trans hk
    | ⟨1, _⟩ => exact rhs_main_v213_1 _ _)
  rw [el, er]

def val_main_v214 : (⟨S1x256, .f32⟩ : BufTy).Contents (Elt F) :=
  broadcastInDim S1x256 ![1] bcast_S256_S1x256_1 (x19)
abbrev idx_main_v214 (i : S1x256.Idx) : S256.Idx := fun a => match a with
  | ⟨0, _⟩ => ⟨(i 1).val, (i 1).isLt⟩
theorem val_main_v214_apply (i : S1x256.Idx) :
    val_main_v214 (F := F) x19 i = x19 (idx_main_v214 i) := by
  unfold val_main_v214
  exact broadcastInDim_apply _ bcast_S256_S1x256_1 x19 i (idx_main_v214 i) (fun a => match a with
    | ⟨0, _⟩ => by show (i 1).val = if (256 : Nat) = 1 then 0 else (i 1).val; rw [if_neg (by decide)])

def val_main_v215 : (⟨S4096x256, .f32⟩ : BufTy).Contents (Elt F) :=
  broadcastInDim S4096x256 ![0, 1] bcast_S1x256_S4096x256_0_1 (val_main_v214 (F := F) x19)
abbrev idx_main_v215 (i : S4096x256.Idx) : S1x256.Idx := fun a => match a with
  | ⟨0, _⟩ => ⟨0, Nat.one_pos⟩
  | ⟨1, _⟩ => ⟨(i 1).val, (i 1).isLt⟩
theorem val_main_v215_apply (i : S4096x256.Idx) :
    val_main_v215 (F := F) x19 i = val_main_v214 (F := F) x19 (idx_main_v215 i) := by
  unfold val_main_v215
  generalize val_main_v214 (F := F) x19 = y
  exact broadcastInDim_apply _ bcast_S1x256_S4096x256_0_1 y i (idx_main_v215 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v216 : (⟨S4096x256, .f32⟩ : BufTy).Contents (Elt F) :=
  addf (val_main_v213 (F := F) x0 x1 x2 x3 x4 x5 x6 x7 x8 x9 x10 x11 x12 x13 x14 x15 x16 x17 x18 x19 x20 x21) (val_main_v215 (F := F) x19)
theorem val_main_v216_apply (i : S4096x256.Idx) :
    val_main_v216 (F := F) x0 x1 x2 x3 x4 x5 x6 x7 x8 x9 x10 x11 x12 x13 x14 x15 x16 x17 x18 x19 x20 x21 i = FloatOps.addf (val_main_v213 (F := F) x0 x1 x2 x3 x4 x5 x6 x7 x8 x9 x10 x11 x12 x13 x14 x15 x16 x17 x18 x19 x20 x21 i) (val_main_v215 (F := F) x19 i) := rfl

def val_main_call10_cst : (⟨S_, .f32⟩ : BufTy).Contents (Elt F) :=
  constant S_ .f32 0x00000000#32
theorem val_main_call10_cst_apply (i : S_.Idx) :
    val_main_call10_cst (F := F) i = FloatOps.ofBits .f32 0x00000000#32 := rfl

def val_main_call10_v0 : (⟨S4096x256, .f32⟩ : BufTy).Contents (Elt F) :=
  broadcastInDim S4096x256 ![] bcast_S_S4096x256 (val_main_call10_cst (F := F))
abbrev idx_main_call10_v0 (i : S4096x256.Idx) : S_.Idx := fun a => a.elim0
theorem val_main_call10_v0_apply (i : S4096x256.Idx) :
    val_main_call10_v0 (F := F) i = val_main_call10_cst (F := F) (idx_main_call10_v0 i) := by
  unfold val_main_call10_v0
  generalize val_main_call10_cst (F := F) = y
  exact broadcastInDim_apply _ bcast_S_S4096x256 y i (idx_main_call10_v0 i) (fun a => a.elim0)

def val_main_v217 : (⟨S4096x256, .f32⟩ : BufTy).Contents (Elt F) :=
  maximumf (val_main_v216 (F := F) x0 x1 x2 x3 x4 x5 x6 x7 x8 x9 x10 x11 x12 x13 x14 x15 x16 x17 x18 x19 x20 x21) (val_main_call10_v0 (F := F))
theorem val_main_v217_apply (i : S4096x256.Idx) :
    val_main_v217 (F := F) x0 x1 x2 x3 x4 x5 x6 x7 x8 x9 x10 x11 x12 x13 x14 x15 x16 x17 x18 x19 x20 x21 i = FloatOps.maximumf (val_main_v216 (F := F) x0 x1 x2 x3 x4 x5 x6 x7 x8 x9 x10 x11 x12 x13 x14 x15 x16 x17 x18 x19 x20 x21 i) (val_main_call10_v0 (F := F) i) := rfl

def val_main_v218 : (⟨S4096x128, .f32⟩ : BufTy).Contents (Elt F) :=
  Host.dotGeneral dot_S4096x256_S256x128_S4096x128_1_0_0_1_n_n none (val_main_v217 (F := F) x0 x1 x2 x3 x4 x5 x6 x7 x8 x9 x10 x11 x12 x13 x14 x15 x16 x17 x18 x19 x20 x21) (x20)
theorem lhs_main_v218_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhs_main_v218_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs_main_v218_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs_main_v218_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl
abbrev lidx_main_v218 (i : S4096x128.Idx) (k : Fin 256) : S4096x256.Idx := fun a => match a with
  | ⟨0, _⟩ => ⟨(i 0).val, (i 0).isLt⟩
  | ⟨1, _⟩ => ⟨k.val, k.isLt⟩
abbrev ridx_main_v218 (i : S4096x128.Idx) (k : Fin 256) : S256x128.Idx := fun a => match a with
  | ⟨0, _⟩ => ⟨k.val, k.isLt⟩
  | ⟨1, _⟩ => ⟨(i 1).val, (i 1).isLt⟩

theorem val_main_v218_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S4096x128.Idx) :
    val_main_v218 (F := Ideal) x0 x1 x2 x3 x4 x5 x6 x7 x8 x9 x10 x11 x12 x13 x14 x15 x16 x17 x18 x19 x20 x21 i = ∑ k : Fin 256, (val_main_v217 (F := Ideal) x0 x1 x2 x3 x4 x5 x6 x7 x8 x9 x10 x11 x12 x13 x14 x15 x16 x17 x18 x19 x20 x21) (lidx_main_v218 i k) * x20 (ridx_main_v218 i k) := by
  unfold val_main_v218
  generalize val_main_v217 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx i ((ValueIdx.contrEquiv1 dot_S4096x256_S256x128_S4096x128_1_0_0_1_n_n 256 rfl rfl).symm k) = lidx_main_v218 i k := funext fun a => Fin.ext (by
    match a with
    | ⟨0, _⟩ => exact lhs_main_v218_0 _ _
    | ⟨1, _⟩ => exact (lhs_main_v218_1 _ _).trans hk)
  have er : dot_S4096x256_S256x128_S4096x128_1_0_0_1_n_n.rhsIdx i ((ValueIdx.contrEquiv1 dot_S4096x256_S256x128_S4096x128_1_0_0_1_n_n 256 rfl rfl).symm k) = ridx_main_v218 i k := funext fun a => Fin.ext (by
    match a with
    | ⟨0, _⟩ => exact (rhs_main_v218_0 _ _).trans hk
    | ⟨1, _⟩ => exact rhs_main_v218_1 _ _)
  rw [el, er]

def val_main_v219 : (⟨S1x128, .f32⟩ : BufTy).Contents (Elt F) :=
  broadcastInDim S1x128 ![1] bcast_S128_S1x128_1 (x21)
abbrev idx_main_v219 (i : S1x128.Idx) : S128.Idx := fun a => match a with
  | ⟨0, _⟩ => ⟨(i 1).val, (i 1).isLt⟩
theorem val_main_v219_apply (i : S1x128.Idx) :
    val_main_v219 (F := F) x21 i = x21 (idx_main_v219 i) := by
  unfold val_main_v219
  exact broadcastInDim_apply _ bcast_S128_S1x128_1 x21 i (idx_main_v219 i) (fun a => match a with
    | ⟨0, _⟩ => by show (i 1).val = if (128 : Nat) = 1 then 0 else (i 1).val; rw [if_neg (by decide)])

def val_main_v220 : (⟨S4096x128, .f32⟩ : BufTy).Contents (Elt F) :=
  broadcastInDim S4096x128 ![0, 1] bcast_S1x128_S4096x128_0_1 (val_main_v219 (F := F) x21)
abbrev idx_main_v220 (i : S4096x128.Idx) : S1x128.Idx := fun a => match a with
  | ⟨0, _⟩ => ⟨0, Nat.one_pos⟩
  | ⟨1, _⟩ => ⟨(i 1).val, (i 1).isLt⟩
theorem val_main_v220_apply (i : S4096x128.Idx) :
    val_main_v220 (F := F) x21 i = val_main_v219 (F := F) x21 (idx_main_v220 i) := by
  unfold val_main_v220
  generalize val_main_v219 (F := F) x21 = y
  exact broadcastInDim_apply _ bcast_S1x128_S4096x128_0_1 y i (idx_main_v220 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v221 : (⟨S4096x128, .f32⟩ : BufTy).Contents (Elt F) :=
  addf (val_main_v218 (F := F) x0 x1 x2 x3 x4 x5 x6 x7 x8 x9 x10 x11 x12 x13 x14 x15 x16 x17 x18 x19 x20 x21) (val_main_v220 (F := F) x21)
theorem val_main_v221_apply (i : S4096x128.Idx) :
    val_main_v221 (F := F) x0 x1 x2 x3 x4 x5 x6 x7 x8 x9 x10 x11 x12 x13 x14 x15 x16 x17 x18 x19 x20 x21 i = FloatOps.addf (val_main_v218 (F := F) x0 x1 x2 x3 x4 x5 x6 x7 x8 x9 x10 x11 x12 x13 x14 x15 x16 x17 x18 x19 x20 x21 i) (val_main_v220 (F := F) x21 i) := rfl

def val_main_call11_cst : (⟨S_, .f32⟩ : BufTy).Contents (Elt F) :=
  constant S_ .f32 0x00000000#32
theorem val_main_call11_cst_apply (i : S_.Idx) :
    val_main_call11_cst (F := F) i = FloatOps.ofBits .f32 0x00000000#32 := rfl

def val_main_call11_v0 : (⟨S4096x128, .f32⟩ : BufTy).Contents (Elt F) :=
  broadcastInDim S4096x128 ![] bcast_S_S4096x128 (val_main_call11_cst (F := F))
abbrev idx_main_call11_v0 (i : S4096x128.Idx) : S_.Idx := fun a => a.elim0
theorem val_main_call11_v0_apply (i : S4096x128.Idx) :
    val_main_call11_v0 (F := F) i = val_main_call11_cst (F := F) (idx_main_call11_v0 i) := by
  unfold val_main_call11_v0
  generalize val_main_call11_cst (F := F) = y
  exact broadcastInDim_apply _ bcast_S_S4096x128 y i (idx_main_call11_v0 i) (fun a => a.elim0)

def val_main_v222 : (⟨S4096x128, .f32⟩ : BufTy).Contents (Elt F) :=
  maximumf (val_main_v221 (F := F) x0 x1 x2 x3 x4 x5 x6 x7 x8 x9 x10 x11 x12 x13 x14 x15 x16 x17 x18 x19 x20 x21) (val_main_call11_v0 (F := F))
theorem val_main_v222_apply (i : S4096x128.Idx) :
    val_main_v222 (F := F) x0 x1 x2 x3 x4 x5 x6 x7 x8 x9 x10 x11 x12 x13 x14 x15 x16 x17 x18 x19 x20 x21 i = FloatOps.maximumf (val_main_v221 (F := F) x0 x1 x2 x3 x4 x5 x6 x7 x8 x9 x10 x11 x12 x13 x14 x15 x16 x17 x18 x19 x20 x21 i) (val_main_call11_v0 (F := F) i) := rfl

def val_main_v223 : (⟨S1024x2x2x128, .f32⟩ : BufTy).Contents (Elt F) :=
  shapeCast _ (val_main_v222 (F := F) x0 x1 x2 x3 x4 x5 x6 x7 x8 x9 x10 x11 x12 x13 x14 x15 x16 x17 x18 x19 x20 x21) shapeCasts_S4096x128_S1024x2x2x128
abbrev idx_main_v223 (i : S1024x2x2x128.Idx) : S4096x128.Idx := fun a => match a with
  | ⟨0, _⟩ => ⟨((((i 0).val * 2 + (i 1).val) * 2 + (i 2).val) * 128 + (i 3).val) / 128, by have h0 : (i 0).val < 1024 := (i 0).isLt; have h1 : (i 1).val < 2 := (i 1).isLt; have h2 : (i 2).val < 2 := (i 2).isLt; have h3 : (i 3).val < 128 := (i 3).isLt; show ((((i 0).val * 2 + (i 1).val) * 2 + (i 2).val) * 128 + (i 3).val) / 128 < 4096; omega⟩
  | ⟨1, _⟩ => ⟨((((i 0).val * 2 + (i 1).val) * 2 + (i 2).val) * 128 + (i 3).val) % 128, by have h0 : (i 0).val < 1024 := (i 0).isLt; have h1 : (i 1).val < 2 := (i 1).isLt; have h2 : (i 2).val < 2 := (i 2).isLt; have h3 : (i 3).val < 128 := (i 3).isLt; show ((((i 0).val * 2 + (i 1).val) * 2 + (i 2).val) * 128 + (i 3).val) % 128 < 128; omega⟩
theorem val_main_v223_apply (i : S1024x2x2x128.Idx) :
    val_main_v223 (F := F) x0 x1 x2 x3 x4 x5 x6 x7 x8 x9 x10 x11 x12 x13 x14 x15 x16 x17 x18 x19 x20 x21 i = val_main_v222 (F := F) x0 x1 x2 x3 x4 x5 x6 x7 x8 x9 x10 x11 x12 x13 x14 x15 x16 x17 x18 x19 x20 x21 (idx_main_v223 i) := by
  unfold val_main_v223
  generalize val_main_v222 (F := F) x0 x1 x2 x3 x4 x5 x6 x7 x8 x9 x10 x11 x12 x13 x14 x15 x16 x17 x18 x19 x20 x21 = y
  exact shapeCast_apply y shapeCasts_S4096x128_S1024x2x2x128 i (idx_main_v223 i)
    (by rewrite [Shape.rowMajor_val_two, Shape.rowMajor_val_four]; have h0 : (i 0).val < 1024 := (i 0).isLt; have h1 : (i 1).val < 2 := (i 1).isLt; have h2 : (i 2).val < 2 := (i 2).isLt; have h3 : (i 3).val < 128 := (i 3).isLt; show ((((i 0).val * 2 + (i 1).val) * 2 + (i 2).val) * 128 + (i 3).val) / 128 * 128 + ((((i 0).val * 2 + (i 1).val) * 2 + (i 2).val) * 128 + (i 3).val) % 128 = (((i 0).val * 2 + (i 1).val) * 2 + (i 2).val) * 128 + (i 3).val; omega)

def val_main_v224 : (⟨S1024x2x2x128, .f32⟩ : BufTy).Contents (Elt F) :=
  shapeCast _ (val_main_v176 (F := F) x0 x1 x2 x3 x4 x5 x6 x7 x8 x9 x10 x11 x12 x13 x14 x15 x16 x17 x18 x19 x20 x21) shapeCasts_S4096x128_S1024x2x2x128
abbrev idx_main_v224 (i : S1024x2x2x128.Idx) : S4096x128.Idx := fun a => match a with
  | ⟨0, _⟩ => ⟨((((i 0).val * 2 + (i 1).val) * 2 + (i 2).val) * 128 + (i 3).val) / 128, by have h0 : (i 0).val < 1024 := (i 0).isLt; have h1 : (i 1).val < 2 := (i 1).isLt; have h2 : (i 2).val < 2 := (i 2).isLt; have h3 : (i 3).val < 128 := (i 3).isLt; show ((((i 0).val * 2 + (i 1).val) * 2 + (i 2).val) * 128 + (i 3).val) / 128 < 4096; omega⟩
  | ⟨1, _⟩ => ⟨((((i 0).val * 2 + (i 1).val) * 2 + (i 2).val) * 128 + (i 3).val) % 128, by have h0 : (i 0).val < 1024 := (i 0).isLt; have h1 : (i 1).val < 2 := (i 1).isLt; have h2 : (i 2).val < 2 := (i 2).isLt; have h3 : (i 3).val < 128 := (i 3).isLt; show ((((i 0).val * 2 + (i 1).val) * 2 + (i 2).val) * 128 + (i 3).val) % 128 < 128; omega⟩
theorem val_main_v224_apply (i : S1024x2x2x128.Idx) :
    val_main_v224 (F := F) x0 x1 x2 x3 x4 x5 x6 x7 x8 x9 x10 x11 x12 x13 x14 x15 x16 x17 x18 x19 x20 x21 i = val_main_v176 (F := F) x0 x1 x2 x3 x4 x5 x6 x7 x8 x9 x10 x11 x12 x13 x14 x15 x16 x17 x18 x19 x20 x21 (idx_main_v224 i) := by
  unfold val_main_v224
  generalize val_main_v176 (F := F) x0 x1 x2 x3 x4 x5 x6 x7 x8 x9 x10 x11 x12 x13 x14 x15 x16 x17 x18 x19 x20 x21 = y
  exact shapeCast_apply y shapeCasts_S4096x128_S1024x2x2x128 i (idx_main_v224 i)
    (by rewrite [Shape.rowMajor_val_two, Shape.rowMajor_val_four]; have h0 : (i 0).val < 1024 := (i 0).isLt; have h1 : (i 1).val < 2 := (i 1).isLt; have h2 : (i 2).val < 2 := (i 2).isLt; have h3 : (i 3).val < 128 := (i 3).isLt; show ((((i 0).val * 2 + (i 1).val) * 2 + (i 2).val) * 128 + (i 3).val) / 128 * 128 + ((((i 0).val * 2 + (i 1).val) * 2 + (i 2).val) * 128 + (i 3).val) % 128 = (((i 0).val * 2 + (i 1).val) * 2 + (i 2).val) * 128 + (i 3).val; omega)

def val_main_v225 : (⟨S1024x2x2x128, .f32⟩ : BufTy).Contents (Elt F) :=
  shapeCast _ (val_main_v191 (F := F) x0 x1 x2 x3 x4 x5 x6 x7 x8 x9 x10 x11 x12 x13 x14 x15 x16 x17 x18 x19 x20 x21) shapeCasts_S4096x128_S1024x2x2x128
abbrev idx_main_v225 (i : S1024x2x2x128.Idx) : S4096x128.Idx := fun a => match a with
  | ⟨0, _⟩ => ⟨((((i 0).val * 2 + (i 1).val) * 2 + (i 2).val) * 128 + (i 3).val) / 128, by have h0 : (i 0).val < 1024 := (i 0).isLt; have h1 : (i 1).val < 2 := (i 1).isLt; have h2 : (i 2).val < 2 := (i 2).isLt; have h3 : (i 3).val < 128 := (i 3).isLt; show ((((i 0).val * 2 + (i 1).val) * 2 + (i 2).val) * 128 + (i 3).val) / 128 < 4096; omega⟩
  | ⟨1, _⟩ => ⟨((((i 0).val * 2 + (i 1).val) * 2 + (i 2).val) * 128 + (i 3).val) % 128, by have h0 : (i 0).val < 1024 := (i 0).isLt; have h1 : (i 1).val < 2 := (i 1).isLt; have h2 : (i 2).val < 2 := (i 2).isLt; have h3 : (i 3).val < 128 := (i 3).isLt; show ((((i 0).val * 2 + (i 1).val) * 2 + (i 2).val) * 128 + (i 3).val) % 128 < 128; omega⟩
theorem val_main_v225_apply (i : S1024x2x2x128.Idx) :
    val_main_v225 (F := F) x0 x1 x2 x3 x4 x5 x6 x7 x8 x9 x10 x11 x12 x13 x14 x15 x16 x17 x18 x19 x20 x21 i = val_main_v191 (F := F) x0 x1 x2 x3 x4 x5 x6 x7 x8 x9 x10 x11 x12 x13 x14 x15 x16 x17 x18 x19 x20 x21 (idx_main_v225 i) := by
  unfold val_main_v225
  generalize val_main_v191 (F := F) x0 x1 x2 x3 x4 x5 x6 x7 x8 x9 x10 x11 x12 x13 x14 x15 x16 x17 x18 x19 x20 x21 = y
  exact shapeCast_apply y shapeCasts_S4096x128_S1024x2x2x128 i (idx_main_v225 i)
    (by rewrite [Shape.rowMajor_val_two, Shape.rowMajor_val_four]; have h0 : (i 0).val < 1024 := (i 0).isLt; have h1 : (i 1).val < 2 := (i 1).isLt; have h2 : (i 2).val < 2 := (i 2).isLt; have h3 : (i 3).val < 128 := (i 3).isLt; show ((((i 0).val * 2 + (i 1).val) * 2 + (i 2).val) * 128 + (i 3).val) / 128 * 128 + ((((i 0).val * 2 + (i 1).val) * 2 + (i 2).val) * 128 + (i 3).val) % 128 = (((i 0).val * 2 + (i 1).val) * 2 + (i 2).val) * 128 + (i 3).val; omega)

def val_main_v226 : (⟨S2048, .f32⟩ : BufTy).Contents (Elt F) :=
  extractStridedSlice S2048 ![1024] (val_main_v25 (F := F) x6) slices_S64512_S2048_1024
abbrev idx_main_v226 (i : S2048.Idx) : S64512.Idx := fun a => match a with
  | ⟨0, _⟩ => ⟨1024 + (i 0).val, by have h0 : (i 0).val < 2048 := (i 0).isLt; show 1024 + (i 0).val < 64512; omega⟩
theorem val_main_v226_apply (i : S2048.Idx) :
    val_main_v226 (F := F) x6 i = val_main_v25 (F := F) x6 (idx_main_v226 i) := by
  unfold val_main_v226
  generalize val_main_v25 (F := F) x6 = y
  exact extractStridedSlice_apply ![1024] y slices_S64512_S2048_1024 i (idx_main_v226 i) (fun a => match a with
    | ⟨0, _⟩ => by show 1024 + (i 0).val = 1024 + (i 0).val; omega)

def val_main_v227 : (⟨S1024x2x1, .f32⟩ : BufTy).Contents (Elt F) :=
  shapeCast _ (val_main_v226 (F := F) x6) shapeCasts_S2048_S1024x2x1
abbrev idx_main_v227 (i : S1024x2x1.Idx) : S2048.Idx := fun a => match a with
  | ⟨0, _⟩ => ⟨((i 0).val * 2 + (i 1).val) * 1 + (i 2).val, by have h0 : (i 0).val < 1024 := (i 0).isLt; have h1 : (i 1).val < 2 := (i 1).isLt; have h2 : (i 2).val < 1 := (i 2).isLt; show ((i 0).val * 2 + (i 1).val) * 1 + (i 2).val < 2048; omega⟩
theorem val_main_v227_apply (i : S1024x2x1.Idx) :
    val_main_v227 (F := F) x6 i = val_main_v226 (F := F) x6 (idx_main_v227 i) := by
  unfold val_main_v227
  generalize val_main_v226 (F := F) x6 = y
  exact shapeCast_apply y shapeCasts_S2048_S1024x2x1 i (idx_main_v227 i)
    (by rewrite [Shape.rowMajor_val_one, Shape.rowMajor_val_three]; have h0 : (i 0).val < 1024 := (i 0).isLt; have h1 : (i 1).val < 2 := (i 1).isLt; have h2 : (i 2).val < 1 := (i 2).isLt; show ((i 0).val * 2 + (i 1).val) * 1 + (i 2).val = ((i 0).val * 2 + (i 1).val) * 1 + (i 2).val; omega)

def val_main_v228 : (⟨S2048, .f32⟩ : BufTy).Contents (Elt F) :=
  extractStridedSlice S2048 ![1024] (val_main_v26 (F := F) x7) slices_S64512_S2048_1024
abbrev idx_main_v228 (i : S2048.Idx) : S64512.Idx := fun a => match a with
  | ⟨0, _⟩ => ⟨1024 + (i 0).val, by have h0 : (i 0).val < 2048 := (i 0).isLt; show 1024 + (i 0).val < 64512; omega⟩
theorem val_main_v228_apply (i : S2048.Idx) :
    val_main_v228 (F := F) x7 i = val_main_v26 (F := F) x7 (idx_main_v228 i) := by
  unfold val_main_v228
  generalize val_main_v26 (F := F) x7 = y
  exact extractStridedSlice_apply ![1024] y slices_S64512_S2048_1024 i (idx_main_v228 i) (fun a => match a with
    | ⟨0, _⟩ => by show 1024 + (i 0).val = 1024 + (i 0).val; omega)

def val_main_v229 : (⟨S1024x2x1, .f32⟩ : BufTy).Contents (Elt F) :=
  shapeCast _ (val_main_v228 (F := F) x7) shapeCasts_S2048_S1024x2x1
abbrev idx_main_v229 (i : S1024x2x1.Idx) : S2048.Idx := fun a => match a with
  | ⟨0, _⟩ => ⟨((i 0).val * 2 + (i 1).val) * 1 + (i 2).val, by have h0 : (i 0).val < 1024 := (i 0).isLt; have h1 : (i 1).val < 2 := (i 1).isLt; have h2 : (i 2).val < 1 := (i 2).isLt; show ((i 0).val * 2 + (i 1).val) * 1 + (i 2).val < 2048; omega⟩
theorem val_main_v229_apply (i : S1024x2x1.Idx) :
    val_main_v229 (F := F) x7 i = val_main_v228 (F := F) x7 (idx_main_v229 i) := by
  unfold val_main_v229
  generalize val_main_v228 (F := F) x7 = y
  exact shapeCast_apply y shapeCasts_S2048_S1024x2x1 i (idx_main_v229 i)
    (by rewrite [Shape.rowMajor_val_one, Shape.rowMajor_val_three]; have h0 : (i 0).val < 1024 := (i 0).isLt; have h1 : (i 1).val < 2 := (i 1).isLt; have h2 : (i 2).val < 1 := (i 2).isLt; show ((i 0).val * 2 + (i 1).val) * 1 + (i 2).val = ((i 0).val * 2 + (i 1).val) * 1 + (i 2).val; omega)

def val_main_v230 : (⟨S1024x2x1x128, .f32⟩ : BufTy).Contents (Elt F) :=
  extractStridedSlice S1024x2x1x128 ![0, 0, 0, 0] (val_main_v223 (F := F) x0 x1 x2 x3 x4 x5 x6 x7 x8 x9 x10 x11 x12 x13 x14 x15 x16 x17 x18 x19 x20 x21) slices_S1024x2x2x128_S1024x2x1x128_0_0_0_0
abbrev idx_main_v230 (i : S1024x2x1x128.Idx) : S1024x2x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v230_apply (i : S1024x2x1x128.Idx) :
    val_main_v230 (F := F) x0 x1 x2 x3 x4 x5 x6 x7 x8 x9 x10 x11 x12 x13 x14 x15 x16 x17 x18 x19 x20 x21 i = val_main_v223 (F := F) x0 x1 x2 x3 x4 x5 x6 x7 x8 x9 x10 x11 x12 x13 x14 x15 x16 x17 x18 x19 x20 x21 (idx_main_v230 i) := by
  unfold val_main_v230
  generalize val_main_v223 (F := F) x0 x1 x2 x3 x4 x5 x6 x7 x8 x9 x10 x11 x12 x13 x14 x15 x16 x17 x18 x19 x20 x21 = y
  exact extractStridedSlice_apply ![0, 0, 0, 0] y slices_S1024x2x2x128_S1024x2x1x128_0_0_0_0 i (idx_main_v230 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v231 : (⟨S1024x2x128, .f32⟩ : BufTy).Contents (Elt F) :=
  shapeCast _ (val_main_v230 (F := F) x0 x1 x2 x3 x4 x5 x6 x7 x8 x9 x10 x11 x12 x13 x14 x15 x16 x17 x18 x19 x20 x21) shapeCasts_S1024x2x1x128_S1024x2x128
abbrev idx_main_v231 (i : S1024x2x128.Idx) : S1024x2x1x128.Idx := fun a => match a with
  | ⟨0, _⟩ => ⟨(((i 0).val * 2 + (i 1).val) * 128 + (i 2).val) / 256, by have h0 : (i 0).val < 1024 := (i 0).isLt; have h1 : (i 1).val < 2 := (i 1).isLt; have h2 : (i 2).val < 128 := (i 2).isLt; show (((i 0).val * 2 + (i 1).val) * 128 + (i 2).val) / 256 < 1024; omega⟩
  | ⟨1, _⟩ => ⟨(((i 0).val * 2 + (i 1).val) * 128 + (i 2).val) / 128 % 2, by have h0 : (i 0).val < 1024 := (i 0).isLt; have h1 : (i 1).val < 2 := (i 1).isLt; have h2 : (i 2).val < 128 := (i 2).isLt; show (((i 0).val * 2 + (i 1).val) * 128 + (i 2).val) / 128 % 2 < 2; omega⟩
  | ⟨2, _⟩ => ⟨0, Nat.one_pos⟩
  | ⟨3, _⟩ => ⟨(((i 0).val * 2 + (i 1).val) * 128 + (i 2).val) % 128, by have h0 : (i 0).val < 1024 := (i 0).isLt; have h1 : (i 1).val < 2 := (i 1).isLt; have h2 : (i 2).val < 128 := (i 2).isLt; show (((i 0).val * 2 + (i 1).val) * 128 + (i 2).val) % 128 < 128; omega⟩
theorem val_main_v231_apply (i : S1024x2x128.Idx) :
    val_main_v231 (F := F) x0 x1 x2 x3 x4 x5 x6 x7 x8 x9 x10 x11 x12 x13 x14 x15 x16 x17 x18 x19 x20 x21 i = val_main_v230 (F := F) x0 x1 x2 x3 x4 x5 x6 x7 x8 x9 x10 x11 x12 x13 x14 x15 x16 x17 x18 x19 x20 x21 (idx_main_v231 i) := by
  unfold val_main_v231
  generalize val_main_v230 (F := F) x0 x1 x2 x3 x4 x5 x6 x7 x8 x9 x10 x11 x12 x13 x14 x15 x16 x17 x18 x19 x20 x21 = y
  exact shapeCast_apply y shapeCasts_S1024x2x1x128_S1024x2x128 i (idx_main_v231 i)
    (by rewrite [Shape.rowMajor_val_four, Shape.rowMajor_val_three]; have h0 : (i 0).val < 1024 := (i 0).isLt; have h1 : (i 1).val < 2 := (i 1).isLt; have h2 : (i 2).val < 128 := (i 2).isLt; show (((((i 0).val * 2 + (i 1).val) * 128 + (i 2).val) / 256 * 2 + (((i 0).val * 2 + (i 1).val) * 128 + (i 2).val) / 128 % 2) * 1 + 0) * 128 + (((i 0).val * 2 + (i 1).val) * 128 + (i 2).val) % 128 = ((i 0).val * 2 + (i 1).val) * 128 + (i 2).val; omega)

def val_main_v232 : (⟨S1024x2x128, .f32⟩ : BufTy).Contents (Elt F) :=
  broadcastInDim S1024x2x128 ![0, 1, 2] bcast_S1024x2x1_S1024x2x128_0_1_2 (val_main_v227 (F := F) x6)
abbrev idx_main_v232 (i : S1024x2x128.Idx) : S1024x2x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v232_apply (i : S1024x2x128.Idx) :
    val_main_v232 (F := F) x6 i = val_main_v227 (F := F) x6 (idx_main_v232 i) := by
  unfold val_main_v232
  generalize val_main_v227 (F := F) x6 = y
  exact broadcastInDim_apply _ bcast_S1024x2x1_S1024x2x128_0_1_2 y i (idx_main_v232 i) (fun a => match a with
    | ⟨0, _⟩ => by show (i 0).val = if (1024 : Nat) = 1 then 0 else (i 0).val; rw [if_neg (by decide)]
    | ⟨1, _⟩ => by show (i 1).val = if (2 : Nat) = 1 then 0 else (i 1).val; rw [if_neg (by decide)]
    | ⟨2, _⟩ => by show 0 = if (1 : Nat) = 1 then 0 else (i 2).val; rw [if_pos rfl])

def val_main_v233 : (⟨S1024x2x128, .f32⟩ : BufTy).Contents (Elt F) :=
  mulf (val_main_v231 (F := F) x0 x1 x2 x3 x4 x5 x6 x7 x8 x9 x10 x11 x12 x13 x14 x15 x16 x17 x18 x19 x20 x21) (val_main_v232 (F := F) x6)
theorem val_main_v233_apply (i : S1024x2x128.Idx) :
    val_main_v233 (F := F) x0 x1 x2 x3 x4 x5 x6 x7 x8 x9 x10 x11 x12 x13 x14 x15 x16 x17 x18 x19 x20 x21 i = FloatOps.mulf (val_main_v231 (F := F) x0 x1 x2 x3 x4 x5 x6 x7 x8 x9 x10 x11 x12 x13 x14 x15 x16 x17 x18 x19 x20 x21 i) (val_main_v232 (F := F) x6 i) := rfl

def val_main_v234 : (⟨S2048x128, .f32⟩ : BufTy).Contents (Elt F) :=
  shapeCast _ (val_main_v233 (F := F) x0 x1 x2 x3 x4 x5 x6 x7 x8 x9 x10 x11 x12 x13 x14 x15 x16 x17 x18 x19 x20 x21) shapeCasts_S1024x2x128_S2048x128
abbrev idx_main_v234 (i : S2048x128.Idx) : S1024x2x128.Idx := fun a => match a with
  | ⟨0, _⟩ => ⟨((i 0).val * 128 + (i 1).val) / 256, by have h0 : (i 0).val < 2048 := (i 0).isLt; have h1 : (i 1).val < 128 := (i 1).isLt; show ((i 0).val * 128 + (i 1).val) / 256 < 1024; omega⟩
  | ⟨1, _⟩ => ⟨((i 0).val * 128 + (i 1).val) / 128 % 2, by have h0 : (i 0).val < 2048 := (i 0).isLt; have h1 : (i 1).val < 128 := (i 1).isLt; show ((i 0).val * 128 + (i 1).val) / 128 % 2 < 2; omega⟩
  | ⟨2, _⟩ => ⟨((i 0).val * 128 + (i 1).val) % 128, by have h0 : (i 0).val < 2048 := (i 0).isLt; have h1 : (i 1).val < 128 := (i 1).isLt; show ((i 0).val * 128 + (i 1).val) % 128 < 128; omega⟩
theorem val_main_v234_apply (i : S2048x128.Idx) :
    val_main_v234 (F := F) x0 x1 x2 x3 x4 x5 x6 x7 x8 x9 x10 x11 x12 x13 x14 x15 x16 x17 x18 x19 x20 x21 i = val_main_v233 (F := F) x0 x1 x2 x3 x4 x5 x6 x7 x8 x9 x10 x11 x12 x13 x14 x15 x16 x17 x18 x19 x20 x21 (idx_main_v234 i) := by
  unfold val_main_v234
  generalize val_main_v233 (F := F) x0 x1 x2 x3 x4 x5 x6 x7 x8 x9 x10 x11 x12 x13 x14 x15 x16 x17 x18 x19 x20 x21 = y
  exact shapeCast_apply y shapeCasts_S1024x2x128_S2048x128 i (idx_main_v234 i)
    (by rewrite [Shape.rowMajor_val_three, Shape.rowMajor_val_two]; have h0 : (i 0).val < 2048 := (i 0).isLt; have h1 : (i 1).val < 128 := (i 1).isLt; show (((i 0).val * 128 + (i 1).val) / 256 * 2 + ((i 0).val * 128 + (i 1).val) / 128 % 2) * 128 + ((i 0).val * 128 + (i 1).val) % 128 = (i 0).val * 128 + (i 1).val; omega)

def val_main_v235 : (⟨S1024x2x1x128, .f32⟩ : BufTy).Contents (Elt F) :=
  extractStridedSlice S1024x2x1x128 ![0, 0, 0, 0] (val_main_v224 (F := F) x0 x1 x2 x3 x4 x5 x6 x7 x8 x9 x10 x11 x12 x13 x14 x15 x16 x17 x18 x19 x20 x21) slices_S1024x2x2x128_S1024x2x1x128_0_0_0_0
abbrev idx_main_v235 (i : S1024x2x1x128.Idx) : S1024x2x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v235_apply (i : S1024x2x1x128.Idx) :
    val_main_v235 (F := F) x0 x1 x2 x3 x4 x5 x6 x7 x8 x9 x10 x11 x12 x13 x14 x15 x16 x17 x18 x19 x20 x21 i = val_main_v224 (F := F) x0 x1 x2 x3 x4 x5 x6 x7 x8 x9 x10 x11 x12 x13 x14 x15 x16 x17 x18 x19 x20 x21 (idx_main_v235 i) := by
  unfold val_main_v235
  generalize val_main_v224 (F := F) x0 x1 x2 x3 x4 x5 x6 x7 x8 x9 x10 x11 x12 x13 x14 x15 x16 x17 x18 x19 x20 x21 = y
  exact extractStridedSlice_apply ![0, 0, 0, 0] y slices_S1024x2x2x128_S1024x2x1x128_0_0_0_0 i (idx_main_v235 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v236 : (⟨S1024x2x128, .f32⟩ : BufTy).Contents (Elt F) :=
  shapeCast _ (val_main_v235 (F := F) x0 x1 x2 x3 x4 x5 x6 x7 x8 x9 x10 x11 x12 x13 x14 x15 x16 x17 x18 x19 x20 x21) shapeCasts_S1024x2x1x128_S1024x2x128
abbrev idx_main_v236 (i : S1024x2x128.Idx) : S1024x2x1x128.Idx := fun a => match a with
  | ⟨0, _⟩ => ⟨(((i 0).val * 2 + (i 1).val) * 128 + (i 2).val) / 256, by have h0 : (i 0).val < 1024 := (i 0).isLt; have h1 : (i 1).val < 2 := (i 1).isLt; have h2 : (i 2).val < 128 := (i 2).isLt; show (((i 0).val * 2 + (i 1).val) * 128 + (i 2).val) / 256 < 1024; omega⟩
  | ⟨1, _⟩ => ⟨(((i 0).val * 2 + (i 1).val) * 128 + (i 2).val) / 128 % 2, by have h0 : (i 0).val < 1024 := (i 0).isLt; have h1 : (i 1).val < 2 := (i 1).isLt; have h2 : (i 2).val < 128 := (i 2).isLt; show (((i 0).val * 2 + (i 1).val) * 128 + (i 2).val) / 128 % 2 < 2; omega⟩
  | ⟨2, _⟩ => ⟨0, Nat.one_pos⟩
  | ⟨3, _⟩ => ⟨(((i 0).val * 2 + (i 1).val) * 128 + (i 2).val) % 128, by have h0 : (i 0).val < 1024 := (i 0).isLt; have h1 : (i 1).val < 2 := (i 1).isLt; have h2 : (i 2).val < 128 := (i 2).isLt; show (((i 0).val * 2 + (i 1).val) * 128 + (i 2).val) % 128 < 128; omega⟩
theorem val_main_v236_apply (i : S1024x2x128.Idx) :
    val_main_v236 (F := F) x0 x1 x2 x3 x4 x5 x6 x7 x8 x9 x10 x11 x12 x13 x14 x15 x16 x17 x18 x19 x20 x21 i = val_main_v235 (F := F) x0 x1 x2 x3 x4 x5 x6 x7 x8 x9 x10 x11 x12 x13 x14 x15 x16 x17 x18 x19 x20 x21 (idx_main_v236 i) := by
  unfold val_main_v236
  generalize val_main_v235 (F := F) x0 x1 x2 x3 x4 x5 x6 x7 x8 x9 x10 x11 x12 x13 x14 x15 x16 x17 x18 x19 x20 x21 = y
  exact shapeCast_apply y shapeCasts_S1024x2x1x128_S1024x2x128 i (idx_main_v236 i)
    (by rewrite [Shape.rowMajor_val_four, Shape.rowMajor_val_three]; have h0 : (i 0).val < 1024 := (i 0).isLt; have h1 : (i 1).val < 2 := (i 1).isLt; have h2 : (i 2).val < 128 := (i 2).isLt; show (((((i 0).val * 2 + (i 1).val) * 128 + (i 2).val) / 256 * 2 + (((i 0).val * 2 + (i 1).val) * 128 + (i 2).val) / 128 % 2) * 1 + 0) * 128 + (((i 0).val * 2 + (i 1).val) * 128 + (i 2).val) % 128 = ((i 0).val * 2 + (i 1).val) * 128 + (i 2).val; omega)

def val_main_v237 : (⟨S1024x2x128, .f32⟩ : BufTy).Contents (Elt F) :=
  broadcastInDim S1024x2x128 ![0, 1, 2] bcast_S1024x2x1_S1024x2x128_0_1_2 (val_main_v227 (F := F) x6)
abbrev idx_main_v237 (i : S1024x2x128.Idx) : S1024x2x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v237_apply (i : S1024x2x128.Idx) :
    val_main_v237 (F := F) x6 i = val_main_v227 (F := F) x6 (idx_main_v237 i) := by
  unfold val_main_v237
  generalize val_main_v227 (F := F) x6 = y
  exact broadcastInDim_apply _ bcast_S1024x2x1_S1024x2x128_0_1_2 y i (idx_main_v237 i) (fun a => match a with
    | ⟨0, _⟩ => by show (i 0).val = if (1024 : Nat) = 1 then 0 else (i 0).val; rw [if_neg (by decide)]
    | ⟨1, _⟩ => by show (i 1).val = if (2 : Nat) = 1 then 0 else (i 1).val; rw [if_neg (by decide)]
    | ⟨2, _⟩ => by show 0 = if (1 : Nat) = 1 then 0 else (i 2).val; rw [if_pos rfl])

def val_main_v238 : (⟨S1024x2x128, .f32⟩ : BufTy).Contents (Elt F) :=
  mulf (val_main_v236 (F := F) x0 x1 x2 x3 x4 x5 x6 x7 x8 x9 x10 x11 x12 x13 x14 x15 x16 x17 x18 x19 x20 x21) (val_main_v237 (F := F) x6)
theorem val_main_v238_apply (i : S1024x2x128.Idx) :
    val_main_v238 (F := F) x0 x1 x2 x3 x4 x5 x6 x7 x8 x9 x10 x11 x12 x13 x14 x15 x16 x17 x18 x19 x20 x21 i = FloatOps.mulf (val_main_v236 (F := F) x0 x1 x2 x3 x4 x5 x6 x7 x8 x9 x10 x11 x12 x13 x14 x15 x16 x17 x18 x19 x20 x21 i) (val_main_v237 (F := F) x6 i) := rfl

def val_main_v239 : (⟨S2048x128, .f32⟩ : BufTy).Contents (Elt F) :=
  shapeCast _ (val_main_v238 (F := F) x0 x1 x2 x3 x4 x5 x6 x7 x8 x9 x10 x11 x12 x13 x14 x15 x16 x17 x18 x19 x20 x21) shapeCasts_S1024x2x128_S2048x128
abbrev idx_main_v239 (i : S2048x128.Idx) : S1024x2x128.Idx := fun a => match a with
  | ⟨0, _⟩ => ⟨((i 0).val * 128 + (i 1).val) / 256, by have h0 : (i 0).val < 2048 := (i 0).isLt; have h1 : (i 1).val < 128 := (i 1).isLt; show ((i 0).val * 128 + (i 1).val) / 256 < 1024; omega⟩
  | ⟨1, _⟩ => ⟨((i 0).val * 128 + (i 1).val) / 128 % 2, by have h0 : (i 0).val < 2048 := (i 0).isLt; have h1 : (i 1).val < 128 := (i 1).isLt; show ((i 0).val * 128 + (i 1).val) / 128 % 2 < 2; omega⟩
  | ⟨2, _⟩ => ⟨((i 0).val * 128 + (i 1).val) % 128, by have h0 : (i 0).val < 2048 := (i 0).isLt; have h1 : (i 1).val < 128 := (i 1).isLt; show ((i 0).val * 128 + (i 1).val) % 128 < 128; omega⟩
theorem val_main_v239_apply (i : S2048x128.Idx) :
    val_main_v239 (F := F) x0 x1 x2 x3 x4 x5 x6 x7 x8 x9 x10 x11 x12 x13 x14 x15 x16 x17 x18 x19 x20 x21 i = val_main_v238 (F := F) x0 x1 x2 x3 x4 x5 x6 x7 x8 x9 x10 x11 x12 x13 x14 x15 x16 x17 x18 x19 x20 x21 (idx_main_v239 i) := by
  unfold val_main_v239
  generalize val_main_v238 (F := F) x0 x1 x2 x3 x4 x5 x6 x7 x8 x9 x10 x11 x12 x13 x14 x15 x16 x17 x18 x19 x20 x21 = y
  exact shapeCast_apply y shapeCasts_S1024x2x128_S2048x128 i (idx_main_v239 i)
    (by rewrite [Shape.rowMajor_val_three, Shape.rowMajor_val_two]; have h0 : (i 0).val < 2048 := (i 0).isLt; have h1 : (i 1).val < 128 := (i 1).isLt; show (((i 0).val * 128 + (i 1).val) / 256 * 2 + ((i 0).val * 128 + (i 1).val) / 128 % 2) * 128 + ((i 0).val * 128 + (i 1).val) % 128 = (i 0).val * 128 + (i 1).val; omega)

def val_main_v240 : (⟨S1024x2x1x128, .f32⟩ : BufTy).Contents (Elt F) :=
  extractStridedSlice S1024x2x1x128 ![0, 0, 0, 0] (val_main_v225 (F := F) x0 x1 x2 x3 x4 x5 x6 x7 x8 x9 x10 x11 x12 x13 x14 x15 x16 x17 x18 x19 x20 x21) slices_S1024x2x2x128_S1024x2x1x128_0_0_0_0
abbrev idx_main_v240 (i : S1024x2x1x128.Idx) : S1024x2x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v240_apply (i : S1024x2x1x128.Idx) :
    val_main_v240 (F := F) x0 x1 x2 x3 x4 x5 x6 x7 x8 x9 x10 x11 x12 x13 x14 x15 x16 x17 x18 x19 x20 x21 i = val_main_v225 (F := F) x0 x1 x2 x3 x4 x5 x6 x7 x8 x9 x10 x11 x12 x13 x14 x15 x16 x17 x18 x19 x20 x21 (idx_main_v240 i) := by
  unfold val_main_v240
  generalize val_main_v225 (F := F) x0 x1 x2 x3 x4 x5 x6 x7 x8 x9 x10 x11 x12 x13 x14 x15 x16 x17 x18 x19 x20 x21 = y
  exact extractStridedSlice_apply ![0, 0, 0, 0] y slices_S1024x2x2x128_S1024x2x1x128_0_0_0_0 i (idx_main_v240 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v241 : (⟨S1024x2x128, .f32⟩ : BufTy).Contents (Elt F) :=
  shapeCast _ (val_main_v240 (F := F) x0 x1 x2 x3 x4 x5 x6 x7 x8 x9 x10 x11 x12 x13 x14 x15 x16 x17 x18 x19 x20 x21) shapeCasts_S1024x2x1x128_S1024x2x128
abbrev idx_main_v241 (i : S1024x2x128.Idx) : S1024x2x1x128.Idx := fun a => match a with
  | ⟨0, _⟩ => ⟨(((i 0).val * 2 + (i 1).val) * 128 + (i 2).val) / 256, by have h0 : (i 0).val < 1024 := (i 0).isLt; have h1 : (i 1).val < 2 := (i 1).isLt; have h2 : (i 2).val < 128 := (i 2).isLt; show (((i 0).val * 2 + (i 1).val) * 128 + (i 2).val) / 256 < 1024; omega⟩
  | ⟨1, _⟩ => ⟨(((i 0).val * 2 + (i 1).val) * 128 + (i 2).val) / 128 % 2, by have h0 : (i 0).val < 1024 := (i 0).isLt; have h1 : (i 1).val < 2 := (i 1).isLt; have h2 : (i 2).val < 128 := (i 2).isLt; show (((i 0).val * 2 + (i 1).val) * 128 + (i 2).val) / 128 % 2 < 2; omega⟩
  | ⟨2, _⟩ => ⟨0, Nat.one_pos⟩
  | ⟨3, _⟩ => ⟨(((i 0).val * 2 + (i 1).val) * 128 + (i 2).val) % 128, by have h0 : (i 0).val < 1024 := (i 0).isLt; have h1 : (i 1).val < 2 := (i 1).isLt; have h2 : (i 2).val < 128 := (i 2).isLt; show (((i 0).val * 2 + (i 1).val) * 128 + (i 2).val) % 128 < 128; omega⟩
theorem val_main_v241_apply (i : S1024x2x128.Idx) :
    val_main_v241 (F := F) x0 x1 x2 x3 x4 x5 x6 x7 x8 x9 x10 x11 x12 x13 x14 x15 x16 x17 x18 x19 x20 x21 i = val_main_v240 (F := F) x0 x1 x2 x3 x4 x5 x6 x7 x8 x9 x10 x11 x12 x13 x14 x15 x16 x17 x18 x19 x20 x21 (idx_main_v241 i) := by
  unfold val_main_v241
  generalize val_main_v240 (F := F) x0 x1 x2 x3 x4 x5 x6 x7 x8 x9 x10 x11 x12 x13 x14 x15 x16 x17 x18 x19 x20 x21 = y
  exact shapeCast_apply y shapeCasts_S1024x2x1x128_S1024x2x128 i (idx_main_v241 i)
    (by rewrite [Shape.rowMajor_val_four, Shape.rowMajor_val_three]; have h0 : (i 0).val < 1024 := (i 0).isLt; have h1 : (i 1).val < 2 := (i 1).isLt; have h2 : (i 2).val < 128 := (i 2).isLt; show (((((i 0).val * 2 + (i 1).val) * 128 + (i 2).val) / 256 * 2 + (((i 0).val * 2 + (i 1).val) * 128 + (i 2).val) / 128 % 2) * 1 + 0) * 128 + (((i 0).val * 2 + (i 1).val) * 128 + (i 2).val) % 128 = ((i 0).val * 2 + (i 1).val) * 128 + (i 2).val; omega)

def val_main_v242 : (⟨S1024x2x128, .f32⟩ : BufTy).Contents (Elt F) :=
  broadcastInDim S1024x2x128 ![0, 1, 2] bcast_S1024x2x1_S1024x2x128_0_1_2 (val_main_v227 (F := F) x6)
abbrev idx_main_v242 (i : S1024x2x128.Idx) : S1024x2x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v242_apply (i : S1024x2x128.Idx) :
    val_main_v242 (F := F) x6 i = val_main_v227 (F := F) x6 (idx_main_v242 i) := by
  unfold val_main_v242
  generalize val_main_v227 (F := F) x6 = y
  exact broadcastInDim_apply _ bcast_S1024x2x1_S1024x2x128_0_1_2 y i (idx_main_v242 i) (fun a => match a with
    | ⟨0, _⟩ => by show (i 0).val = if (1024 : Nat) = 1 then 0 else (i 0).val; rw [if_neg (by decide)]
    | ⟨1, _⟩ => by show (i 1).val = if (2 : Nat) = 1 then 0 else (i 1).val; rw [if_neg (by decide)]
    | ⟨2, _⟩ => by show 0 = if (1 : Nat) = 1 then 0 else (i 2).val; rw [if_pos rfl])

def val_main_v243 : (⟨S1024x2x128, .f32⟩ : BufTy).Contents (Elt F) :=
  mulf (val_main_v241 (F := F) x0 x1 x2 x3 x4 x5 x6 x7 x8 x9 x10 x11 x12 x13 x14 x15 x16 x17 x18 x19 x20 x21) (val_main_v242 (F := F) x6)
theorem val_main_v243_apply (i : S1024x2x128.Idx) :
    val_main_v243 (F := F) x0 x1 x2 x3 x4 x5 x6 x7 x8 x9 x10 x11 x12 x13 x14 x15 x16 x17 x18 x19 x20 x21 i = FloatOps.mulf (val_main_v241 (F := F) x0 x1 x2 x3 x4 x5 x6 x7 x8 x9 x10 x11 x12 x13 x14 x15 x16 x17 x18 x19 x20 x21 i) (val_main_v242 (F := F) x6 i) := rfl

def val_main_v244 : (⟨S2048x128, .f32⟩ : BufTy).Contents (Elt F) :=
  shapeCast _ (val_main_v243 (F := F) x0 x1 x2 x3 x4 x5 x6 x7 x8 x9 x10 x11 x12 x13 x14 x15 x16 x17 x18 x19 x20 x21) shapeCasts_S1024x2x128_S2048x128
abbrev idx_main_v244 (i : S2048x128.Idx) : S1024x2x128.Idx := fun a => match a with
  | ⟨0, _⟩ => ⟨((i 0).val * 128 + (i 1).val) / 256, by have h0 : (i 0).val < 2048 := (i 0).isLt; have h1 : (i 1).val < 128 := (i 1).isLt; show ((i 0).val * 128 + (i 1).val) / 256 < 1024; omega⟩
  | ⟨1, _⟩ => ⟨((i 0).val * 128 + (i 1).val) / 128 % 2, by have h0 : (i 0).val < 2048 := (i 0).isLt; have h1 : (i 1).val < 128 := (i 1).isLt; show ((i 0).val * 128 + (i 1).val) / 128 % 2 < 2; omega⟩
  | ⟨2, _⟩ => ⟨((i 0).val * 128 + (i 1).val) % 128, by have h0 : (i 0).val < 2048 := (i 0).isLt; have h1 : (i 1).val < 128 := (i 1).isLt; show ((i 0).val * 128 + (i 1).val) % 128 < 128; omega⟩
theorem val_main_v244_apply (i : S2048x128.Idx) :
    val_main_v244 (F := F) x0 x1 x2 x3 x4 x5 x6 x7 x8 x9 x10 x11 x12 x13 x14 x15 x16 x17 x18 x19 x20 x21 i = val_main_v243 (F := F) x0 x1 x2 x3 x4 x5 x6 x7 x8 x9 x10 x11 x12 x13 x14 x15 x16 x17 x18 x19 x20 x21 (idx_main_v244 i) := by
  unfold val_main_v244
  generalize val_main_v243 (F := F) x0 x1 x2 x3 x4 x5 x6 x7 x8 x9 x10 x11 x12 x13 x14 x15 x16 x17 x18 x19 x20 x21 = y
  exact shapeCast_apply y shapeCasts_S1024x2x128_S2048x128 i (idx_main_v244 i)
    (by rewrite [Shape.rowMajor_val_three, Shape.rowMajor_val_two]; have h0 : (i 0).val < 2048 := (i 0).isLt; have h1 : (i 1).val < 128 := (i 1).isLt; show (((i 0).val * 128 + (i 1).val) / 256 * 2 + ((i 0).val * 128 + (i 1).val) / 128 % 2) * 128 + ((i 0).val * 128 + (i 1).val) % 128 = (i 0).val * 128 + (i 1).val; omega)

def val_main_v245 : (⟨S1024x2x1x128, .f32⟩ : BufTy).Contents (Elt F) :=
  extractStridedSlice S1024x2x1x128 ![0, 0, 1, 0] (val_main_v223 (F := F) x0 x1 x2 x3 x4 x5 x6 x7 x8 x9 x10 x11 x12 x13 x14 x15 x16 x17 x18 x19 x20 x21) slices_S1024x2x2x128_S1024x2x1x128_0_0_1_0
abbrev idx_main_v245 (i : S1024x2x1x128.Idx) : S1024x2x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v245_apply (i : S1024x2x1x128.Idx) :
    val_main_v245 (F := F) x0 x1 x2 x3 x4 x5 x6 x7 x8 x9 x10 x11 x12 x13 x14 x15 x16 x17 x18 x19 x20 x21 i = val_main_v223 (F := F) x0 x1 x2 x3 x4 x5 x6 x7 x8 x9 x10 x11 x12 x13 x14 x15 x16 x17 x18 x19 x20 x21 (idx_main_v245 i) := by
  unfold val_main_v245
  generalize val_main_v223 (F := F) x0 x1 x2 x3 x4 x5 x6 x7 x8 x9 x10 x11 x12 x13 x14 x15 x16 x17 x18 x19 x20 x21 = y
  exact extractStridedSlice_apply ![0, 0, 1, 0] y slices_S1024x2x2x128_S1024x2x1x128_0_0_1_0 i (idx_main_v245 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v246 : (⟨S1024x2x128, .f32⟩ : BufTy).Contents (Elt F) :=
  shapeCast _ (val_main_v245 (F := F) x0 x1 x2 x3 x4 x5 x6 x7 x8 x9 x10 x11 x12 x13 x14 x15 x16 x17 x18 x19 x20 x21) shapeCasts_S1024x2x1x128_S1024x2x128
abbrev idx_main_v246 (i : S1024x2x128.Idx) : S1024x2x1x128.Idx := fun a => match a with
  | ⟨0, _⟩ => ⟨(((i 0).val * 2 + (i 1).val) * 128 + (i 2).val) / 256, by have h0 : (i 0).val < 1024 := (i 0).isLt; have h1 : (i 1).val < 2 := (i 1).isLt; have h2 : (i 2).val < 128 := (i 2).isLt; show (((i 0).val * 2 + (i 1).val) * 128 + (i 2).val) / 256 < 1024; omega⟩
  | ⟨1, _⟩ => ⟨(((i 0).val * 2 + (i 1).val) * 128 + (i 2).val) / 128 % 2, by have h0 : (i 0).val < 1024 := (i 0).isLt; have h1 : (i 1).val < 2 := (i 1).isLt; have h2 : (i 2).val < 128 := (i 2).isLt; show (((i 0).val * 2 + (i 1).val) * 128 + (i 2).val) / 128 % 2 < 2; omega⟩
  | ⟨2, _⟩ => ⟨0, Nat.one_pos⟩
  | ⟨3, _⟩ => ⟨(((i 0).val * 2 + (i 1).val) * 128 + (i 2).val) % 128, by have h0 : (i 0).val < 1024 := (i 0).isLt; have h1 : (i 1).val < 2 := (i 1).isLt; have h2 : (i 2).val < 128 := (i 2).isLt; show (((i 0).val * 2 + (i 1).val) * 128 + (i 2).val) % 128 < 128; omega⟩
theorem val_main_v246_apply (i : S1024x2x128.Idx) :
    val_main_v246 (F := F) x0 x1 x2 x3 x4 x5 x6 x7 x8 x9 x10 x11 x12 x13 x14 x15 x16 x17 x18 x19 x20 x21 i = val_main_v245 (F := F) x0 x1 x2 x3 x4 x5 x6 x7 x8 x9 x10 x11 x12 x13 x14 x15 x16 x17 x18 x19 x20 x21 (idx_main_v246 i) := by
  unfold val_main_v246
  generalize val_main_v245 (F := F) x0 x1 x2 x3 x4 x5 x6 x7 x8 x9 x10 x11 x12 x13 x14 x15 x16 x17 x18 x19 x20 x21 = y
  exact shapeCast_apply y shapeCasts_S1024x2x1x128_S1024x2x128 i (idx_main_v246 i)
    (by rewrite [Shape.rowMajor_val_four, Shape.rowMajor_val_three]; have h0 : (i 0).val < 1024 := (i 0).isLt; have h1 : (i 1).val < 2 := (i 1).isLt; have h2 : (i 2).val < 128 := (i 2).isLt; show (((((i 0).val * 2 + (i 1).val) * 128 + (i 2).val) / 256 * 2 + (((i 0).val * 2 + (i 1).val) * 128 + (i 2).val) / 128 % 2) * 1 + 0) * 128 + (((i 0).val * 2 + (i 1).val) * 128 + (i 2).val) % 128 = ((i 0).val * 2 + (i 1).val) * 128 + (i 2).val; omega)

def val_main_v247 : (⟨S1024x2x128, .f32⟩ : BufTy).Contents (Elt F) :=
  broadcastInDim S1024x2x128 ![0, 1, 2] bcast_S1024x2x1_S1024x2x128_0_1_2 (val_main_v229 (F := F) x7)
abbrev idx_main_v247 (i : S1024x2x128.Idx) : S1024x2x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v247_apply (i : S1024x2x128.Idx) :
    val_main_v247 (F := F) x7 i = val_main_v229 (F := F) x7 (idx_main_v247 i) := by
  unfold val_main_v247
  generalize val_main_v229 (F := F) x7 = y
  exact broadcastInDim_apply _ bcast_S1024x2x1_S1024x2x128_0_1_2 y i (idx_main_v247 i) (fun a => match a with
    | ⟨0, _⟩ => by show (i 0).val = if (1024 : Nat) = 1 then 0 else (i 0).val; rw [if_neg (by decide)]
    | ⟨1, _⟩ => by show (i 1).val = if (2 : Nat) = 1 then 0 else (i 1).val; rw [if_neg (by decide)]
    | ⟨2, _⟩ => by show 0 = if (1 : Nat) = 1 then 0 else (i 2).val; rw [if_pos rfl])

def val_main_v248 : (⟨S1024x2x128, .f32⟩ : BufTy).Contents (Elt F) :=
  mulf (val_main_v246 (F := F) x0 x1 x2 x3 x4 x5 x6 x7 x8 x9 x10 x11 x12 x13 x14 x15 x16 x17 x18 x19 x20 x21) (val_main_v247 (F := F) x7)
theorem val_main_v248_apply (i : S1024x2x128.Idx) :
    val_main_v248 (F := F) x0 x1 x2 x3 x4 x5 x6 x7 x8 x9 x10 x11 x12 x13 x14 x15 x16 x17 x18 x19 x20 x21 i = FloatOps.mulf (val_main_v246 (F := F) x0 x1 x2 x3 x4 x5 x6 x7 x8 x9 x10 x11 x12 x13 x14 x15 x16 x17 x18 x19 x20 x21 i) (val_main_v247 (F := F) x7 i) := rfl

def val_main_v249 : (⟨S2048x128, .f32⟩ : BufTy).Contents (Elt F) :=
  shapeCast _ (val_main_v248 (F := F) x0 x1 x2 x3 x4 x5 x6 x7 x8 x9 x10 x11 x12 x13 x14 x15 x16 x17 x18 x19 x20 x21) shapeCasts_S1024x2x128_S2048x128
abbrev idx_main_v249 (i : S2048x128.Idx) : S1024x2x128.Idx := fun a => match a with
  | ⟨0, _⟩ => ⟨((i 0).val * 128 + (i 1).val) / 256, by have h0 : (i 0).val < 2048 := (i 0).isLt; have h1 : (i 1).val < 128 := (i 1).isLt; show ((i 0).val * 128 + (i 1).val) / 256 < 1024; omega⟩
  | ⟨1, _⟩ => ⟨((i 0).val * 128 + (i 1).val) / 128 % 2, by have h0 : (i 0).val < 2048 := (i 0).isLt; have h1 : (i 1).val < 128 := (i 1).isLt; show ((i 0).val * 128 + (i 1).val) / 128 % 2 < 2; omega⟩
  | ⟨2, _⟩ => ⟨((i 0).val * 128 + (i 1).val) % 128, by have h0 : (i 0).val < 2048 := (i 0).isLt; have h1 : (i 1).val < 128 := (i 1).isLt; show ((i 0).val * 128 + (i 1).val) % 128 < 128; omega⟩
theorem val_main_v249_apply (i : S2048x128.Idx) :
    val_main_v249 (F := F) x0 x1 x2 x3 x4 x5 x6 x7 x8 x9 x10 x11 x12 x13 x14 x15 x16 x17 x18 x19 x20 x21 i = val_main_v248 (F := F) x0 x1 x2 x3 x4 x5 x6 x7 x8 x9 x10 x11 x12 x13 x14 x15 x16 x17 x18 x19 x20 x21 (idx_main_v249 i) := by
  unfold val_main_v249
  generalize val_main_v248 (F := F) x0 x1 x2 x3 x4 x5 x6 x7 x8 x9 x10 x11 x12 x13 x14 x15 x16 x17 x18 x19 x20 x21 = y
  exact shapeCast_apply y shapeCasts_S1024x2x128_S2048x128 i (idx_main_v249 i)
    (by rewrite [Shape.rowMajor_val_three, Shape.rowMajor_val_two]; have h0 : (i 0).val < 2048 := (i 0).isLt; have h1 : (i 1).val < 128 := (i 1).isLt; show (((i 0).val * 128 + (i 1).val) / 256 * 2 + ((i 0).val * 128 + (i 1).val) / 128 % 2) * 128 + ((i 0).val * 128 + (i 1).val) % 128 = (i 0).val * 128 + (i 1).val; omega)

def val_main_v250 : (⟨S1024x2x1x128, .f32⟩ : BufTy).Contents (Elt F) :=
  extractStridedSlice S1024x2x1x128 ![0, 0, 1, 0] (val_main_v224 (F := F) x0 x1 x2 x3 x4 x5 x6 x7 x8 x9 x10 x11 x12 x13 x14 x15 x16 x17 x18 x19 x20 x21) slices_S1024x2x2x128_S1024x2x1x128_0_0_1_0
abbrev idx_main_v250 (i : S1024x2x1x128.Idx) : S1024x2x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v250_apply (i : S1024x2x1x128.Idx) :
    val_main_v250 (F := F) x0 x1 x2 x3 x4 x5 x6 x7 x8 x9 x10 x11 x12 x13 x14 x15 x16 x17 x18 x19 x20 x21 i = val_main_v224 (F := F) x0 x1 x2 x3 x4 x5 x6 x7 x8 x9 x10 x11 x12 x13 x14 x15 x16 x17 x18 x19 x20 x21 (idx_main_v250 i) := by
  unfold val_main_v250
  generalize val_main_v224 (F := F) x0 x1 x2 x3 x4 x5 x6 x7 x8 x9 x10 x11 x12 x13 x14 x15 x16 x17 x18 x19 x20 x21 = y
  exact extractStridedSlice_apply ![0, 0, 1, 0] y slices_S1024x2x2x128_S1024x2x1x128_0_0_1_0 i (idx_main_v250 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v251 : (⟨S1024x2x128, .f32⟩ : BufTy).Contents (Elt F) :=
  shapeCast _ (val_main_v250 (F := F) x0 x1 x2 x3 x4 x5 x6 x7 x8 x9 x10 x11 x12 x13 x14 x15 x16 x17 x18 x19 x20 x21) shapeCasts_S1024x2x1x128_S1024x2x128
abbrev idx_main_v251 (i : S1024x2x128.Idx) : S1024x2x1x128.Idx := fun a => match a with
  | ⟨0, _⟩ => ⟨(((i 0).val * 2 + (i 1).val) * 128 + (i 2).val) / 256, by have h0 : (i 0).val < 1024 := (i 0).isLt; have h1 : (i 1).val < 2 := (i 1).isLt; have h2 : (i 2).val < 128 := (i 2).isLt; show (((i 0).val * 2 + (i 1).val) * 128 + (i 2).val) / 256 < 1024; omega⟩
  | ⟨1, _⟩ => ⟨(((i 0).val * 2 + (i 1).val) * 128 + (i 2).val) / 128 % 2, by have h0 : (i 0).val < 1024 := (i 0).isLt; have h1 : (i 1).val < 2 := (i 1).isLt; have h2 : (i 2).val < 128 := (i 2).isLt; show (((i 0).val * 2 + (i 1).val) * 128 + (i 2).val) / 128 % 2 < 2; omega⟩
  | ⟨2, _⟩ => ⟨0, Nat.one_pos⟩
  | ⟨3, _⟩ => ⟨(((i 0).val * 2 + (i 1).val) * 128 + (i 2).val) % 128, by have h0 : (i 0).val < 1024 := (i 0).isLt; have h1 : (i 1).val < 2 := (i 1).isLt; have h2 : (i 2).val < 128 := (i 2).isLt; show (((i 0).val * 2 + (i 1).val) * 128 + (i 2).val) % 128 < 128; omega⟩
theorem val_main_v251_apply (i : S1024x2x128.Idx) :
    val_main_v251 (F := F) x0 x1 x2 x3 x4 x5 x6 x7 x8 x9 x10 x11 x12 x13 x14 x15 x16 x17 x18 x19 x20 x21 i = val_main_v250 (F := F) x0 x1 x2 x3 x4 x5 x6 x7 x8 x9 x10 x11 x12 x13 x14 x15 x16 x17 x18 x19 x20 x21 (idx_main_v251 i) := by
  unfold val_main_v251
  generalize val_main_v250 (F := F) x0 x1 x2 x3 x4 x5 x6 x7 x8 x9 x10 x11 x12 x13 x14 x15 x16 x17 x18 x19 x20 x21 = y
  exact shapeCast_apply y shapeCasts_S1024x2x1x128_S1024x2x128 i (idx_main_v251 i)
    (by rewrite [Shape.rowMajor_val_four, Shape.rowMajor_val_three]; have h0 : (i 0).val < 1024 := (i 0).isLt; have h1 : (i 1).val < 2 := (i 1).isLt; have h2 : (i 2).val < 128 := (i 2).isLt; show (((((i 0).val * 2 + (i 1).val) * 128 + (i 2).val) / 256 * 2 + (((i 0).val * 2 + (i 1).val) * 128 + (i 2).val) / 128 % 2) * 1 + 0) * 128 + (((i 0).val * 2 + (i 1).val) * 128 + (i 2).val) % 128 = ((i 0).val * 2 + (i 1).val) * 128 + (i 2).val; omega)

def val_main_v252 : (⟨S1024x2x128, .f32⟩ : BufTy).Contents (Elt F) :=
  broadcastInDim S1024x2x128 ![0, 1, 2] bcast_S1024x2x1_S1024x2x128_0_1_2 (val_main_v229 (F := F) x7)
abbrev idx_main_v252 (i : S1024x2x128.Idx) : S1024x2x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v252_apply (i : S1024x2x128.Idx) :
    val_main_v252 (F := F) x7 i = val_main_v229 (F := F) x7 (idx_main_v252 i) := by
  unfold val_main_v252
  generalize val_main_v229 (F := F) x7 = y
  exact broadcastInDim_apply _ bcast_S1024x2x1_S1024x2x128_0_1_2 y i (idx_main_v252 i) (fun a => match a with
    | ⟨0, _⟩ => by show (i 0).val = if (1024 : Nat) = 1 then 0 else (i 0).val; rw [if_neg (by decide)]
    | ⟨1, _⟩ => by show (i 1).val = if (2 : Nat) = 1 then 0 else (i 1).val; rw [if_neg (by decide)]
    | ⟨2, _⟩ => by show 0 = if (1 : Nat) = 1 then 0 else (i 2).val; rw [if_pos rfl])

def val_main_v253 : (⟨S1024x2x128, .f32⟩ : BufTy).Contents (Elt F) :=
  mulf (val_main_v251 (F := F) x0 x1 x2 x3 x4 x5 x6 x7 x8 x9 x10 x11 x12 x13 x14 x15 x16 x17 x18 x19 x20 x21) (val_main_v252 (F := F) x7)
theorem val_main_v253_apply (i : S1024x2x128.Idx) :
    val_main_v253 (F := F) x0 x1 x2 x3 x4 x5 x6 x7 x8 x9 x10 x11 x12 x13 x14 x15 x16 x17 x18 x19 x20 x21 i = FloatOps.mulf (val_main_v251 (F := F) x0 x1 x2 x3 x4 x5 x6 x7 x8 x9 x10 x11 x12 x13 x14 x15 x16 x17 x18 x19 x20 x21 i) (val_main_v252 (F := F) x7 i) := rfl

def val_main_v254 : (⟨S2048x128, .f32⟩ : BufTy).Contents (Elt F) :=
  shapeCast _ (val_main_v253 (F := F) x0 x1 x2 x3 x4 x5 x6 x7 x8 x9 x10 x11 x12 x13 x14 x15 x16 x17 x18 x19 x20 x21) shapeCasts_S1024x2x128_S2048x128
abbrev idx_main_v254 (i : S2048x128.Idx) : S1024x2x128.Idx := fun a => match a with
  | ⟨0, _⟩ => ⟨((i 0).val * 128 + (i 1).val) / 256, by have h0 : (i 0).val < 2048 := (i 0).isLt; have h1 : (i 1).val < 128 := (i 1).isLt; show ((i 0).val * 128 + (i 1).val) / 256 < 1024; omega⟩
  | ⟨1, _⟩ => ⟨((i 0).val * 128 + (i 1).val) / 128 % 2, by have h0 : (i 0).val < 2048 := (i 0).isLt; have h1 : (i 1).val < 128 := (i 1).isLt; show ((i 0).val * 128 + (i 1).val) / 128 % 2 < 2; omega⟩
  | ⟨2, _⟩ => ⟨((i 0).val * 128 + (i 1).val) % 128, by have h0 : (i 0).val < 2048 := (i 0).isLt; have h1 : (i 1).val < 128 := (i 1).isLt; show ((i 0).val * 128 + (i 1).val) % 128 < 128; omega⟩
theorem val_main_v254_apply (i : S2048x128.Idx) :
    val_main_v254 (F := F) x0 x1 x2 x3 x4 x5 x6 x7 x8 x9 x10 x11 x12 x13 x14 x15 x16 x17 x18 x19 x20 x21 i = val_main_v253 (F := F) x0 x1 x2 x3 x4 x5 x6 x7 x8 x9 x10 x11 x12 x13 x14 x15 x16 x17 x18 x19 x20 x21 (idx_main_v254 i) := by
  unfold val_main_v254
  generalize val_main_v253 (F := F) x0 x1 x2 x3 x4 x5 x6 x7 x8 x9 x10 x11 x12 x13 x14 x15 x16 x17 x18 x19 x20 x21 = y
  exact shapeCast_apply y shapeCasts_S1024x2x128_S2048x128 i (idx_main_v254 i)
    (by rewrite [Shape.rowMajor_val_three, Shape.rowMajor_val_two]; have h0 : (i 0).val < 2048 := (i 0).isLt; have h1 : (i 1).val < 128 := (i 1).isLt; show (((i 0).val * 128 + (i 1).val) / 256 * 2 + ((i 0).val * 128 + (i 1).val) / 128 % 2) * 128 + ((i 0).val * 128 + (i 1).val) % 128 = (i 0).val * 128 + (i 1).val; omega)

def val_main_v255 : (⟨S1024x2x1x128, .f32⟩ : BufTy).Contents (Elt F) :=
  extractStridedSlice S1024x2x1x128 ![0, 0, 1, 0] (val_main_v225 (F := F) x0 x1 x2 x3 x4 x5 x6 x7 x8 x9 x10 x11 x12 x13 x14 x15 x16 x17 x18 x19 x20 x21) slices_S1024x2x2x128_S1024x2x1x128_0_0_1_0
abbrev idx_main_v255 (i : S1024x2x1x128.Idx) : S1024x2x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v255_apply (i : S1024x2x1x128.Idx) :
    val_main_v255 (F := F) x0 x1 x2 x3 x4 x5 x6 x7 x8 x9 x10 x11 x12 x13 x14 x15 x16 x17 x18 x19 x20 x21 i = val_main_v225 (F := F) x0 x1 x2 x3 x4 x5 x6 x7 x8 x9 x10 x11 x12 x13 x14 x15 x16 x17 x18 x19 x20 x21 (idx_main_v255 i) := by
  unfold val_main_v255
  generalize val_main_v225 (F := F) x0 x1 x2 x3 x4 x5 x6 x7 x8 x9 x10 x11 x12 x13 x14 x15 x16 x17 x18 x19 x20 x21 = y
  exact extractStridedSlice_apply ![0, 0, 1, 0] y slices_S1024x2x2x128_S1024x2x1x128_0_0_1_0 i (idx_main_v255 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v256 : (⟨S1024x2x128, .f32⟩ : BufTy).Contents (Elt F) :=
  shapeCast _ (val_main_v255 (F := F) x0 x1 x2 x3 x4 x5 x6 x7 x8 x9 x10 x11 x12 x13 x14 x15 x16 x17 x18 x19 x20 x21) shapeCasts_S1024x2x1x128_S1024x2x128
abbrev idx_main_v256 (i : S1024x2x128.Idx) : S1024x2x1x128.Idx := fun a => match a with
  | ⟨0, _⟩ => ⟨(((i 0).val * 2 + (i 1).val) * 128 + (i 2).val) / 256, by have h0 : (i 0).val < 1024 := (i 0).isLt; have h1 : (i 1).val < 2 := (i 1).isLt; have h2 : (i 2).val < 128 := (i 2).isLt; show (((i 0).val * 2 + (i 1).val) * 128 + (i 2).val) / 256 < 1024; omega⟩
  | ⟨1, _⟩ => ⟨(((i 0).val * 2 + (i 1).val) * 128 + (i 2).val) / 128 % 2, by have h0 : (i 0).val < 1024 := (i 0).isLt; have h1 : (i 1).val < 2 := (i 1).isLt; have h2 : (i 2).val < 128 := (i 2).isLt; show (((i 0).val * 2 + (i 1).val) * 128 + (i 2).val) / 128 % 2 < 2; omega⟩
  | ⟨2, _⟩ => ⟨0, Nat.one_pos⟩
  | ⟨3, _⟩ => ⟨(((i 0).val * 2 + (i 1).val) * 128 + (i 2).val) % 128, by have h0 : (i 0).val < 1024 := (i 0).isLt; have h1 : (i 1).val < 2 := (i 1).isLt; have h2 : (i 2).val < 128 := (i 2).isLt; show (((i 0).val * 2 + (i 1).val) * 128 + (i 2).val) % 128 < 128; omega⟩
theorem val_main_v256_apply (i : S1024x2x128.Idx) :
    val_main_v256 (F := F) x0 x1 x2 x3 x4 x5 x6 x7 x8 x9 x10 x11 x12 x13 x14 x15 x16 x17 x18 x19 x20 x21 i = val_main_v255 (F := F) x0 x1 x2 x3 x4 x5 x6 x7 x8 x9 x10 x11 x12 x13 x14 x15 x16 x17 x18 x19 x20 x21 (idx_main_v256 i) := by
  unfold val_main_v256
  generalize val_main_v255 (F := F) x0 x1 x2 x3 x4 x5 x6 x7 x8 x9 x10 x11 x12 x13 x14 x15 x16 x17 x18 x19 x20 x21 = y
  exact shapeCast_apply y shapeCasts_S1024x2x1x128_S1024x2x128 i (idx_main_v256 i)
    (by rewrite [Shape.rowMajor_val_four, Shape.rowMajor_val_three]; have h0 : (i 0).val < 1024 := (i 0).isLt; have h1 : (i 1).val < 2 := (i 1).isLt; have h2 : (i 2).val < 128 := (i 2).isLt; show (((((i 0).val * 2 + (i 1).val) * 128 + (i 2).val) / 256 * 2 + (((i 0).val * 2 + (i 1).val) * 128 + (i 2).val) / 128 % 2) * 1 + 0) * 128 + (((i 0).val * 2 + (i 1).val) * 128 + (i 2).val) % 128 = ((i 0).val * 2 + (i 1).val) * 128 + (i 2).val; omega)

def val_main_v257 : (⟨S1024x2x128, .f32⟩ : BufTy).Contents (Elt F) :=
  broadcastInDim S1024x2x128 ![0, 1, 2] bcast_S1024x2x1_S1024x2x128_0_1_2 (val_main_v229 (F := F) x7)
abbrev idx_main_v257 (i : S1024x2x128.Idx) : S1024x2x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v257_apply (i : S1024x2x128.Idx) :
    val_main_v257 (F := F) x7 i = val_main_v229 (F := F) x7 (idx_main_v257 i) := by
  unfold val_main_v257
  generalize val_main_v229 (F := F) x7 = y
  exact broadcastInDim_apply _ bcast_S1024x2x1_S1024x2x128_0_1_2 y i (idx_main_v257 i) (fun a => match a with
    | ⟨0, _⟩ => by show (i 0).val = if (1024 : Nat) = 1 then 0 else (i 0).val; rw [if_neg (by decide)]
    | ⟨1, _⟩ => by show (i 1).val = if (2 : Nat) = 1 then 0 else (i 1).val; rw [if_neg (by decide)]
    | ⟨2, _⟩ => by show 0 = if (1 : Nat) = 1 then 0 else (i 2).val; rw [if_pos rfl])

def val_main_v258 : (⟨S1024x2x128, .f32⟩ : BufTy).Contents (Elt F) :=
  mulf (val_main_v256 (F := F) x0 x1 x2 x3 x4 x5 x6 x7 x8 x9 x10 x11 x12 x13 x14 x15 x16 x17 x18 x19 x20 x21) (val_main_v257 (F := F) x7)
theorem val_main_v258_apply (i : S1024x2x128.Idx) :
    val_main_v258 (F := F) x0 x1 x2 x3 x4 x5 x6 x7 x8 x9 x10 x11 x12 x13 x14 x15 x16 x17 x18 x19 x20 x21 i = FloatOps.mulf (val_main_v256 (F := F) x0 x1 x2 x3 x4 x5 x6 x7 x8 x9 x10 x11 x12 x13 x14 x15 x16 x17 x18 x19 x20 x21 i) (val_main_v257 (F := F) x7 i) := rfl

def val_main_v259 : (⟨S2048x128, .f32⟩ : BufTy).Contents (Elt F) :=
  shapeCast _ (val_main_v258 (F := F) x0 x1 x2 x3 x4 x5 x6 x7 x8 x9 x10 x11 x12 x13 x14 x15 x16 x17 x18 x19 x20 x21) shapeCasts_S1024x2x128_S2048x128
abbrev idx_main_v259 (i : S2048x128.Idx) : S1024x2x128.Idx := fun a => match a with
  | ⟨0, _⟩ => ⟨((i 0).val * 128 + (i 1).val) / 256, by have h0 : (i 0).val < 2048 := (i 0).isLt; have h1 : (i 1).val < 128 := (i 1).isLt; show ((i 0).val * 128 + (i 1).val) / 256 < 1024; omega⟩
  | ⟨1, _⟩ => ⟨((i 0).val * 128 + (i 1).val) / 128 % 2, by have h0 : (i 0).val < 2048 := (i 0).isLt; have h1 : (i 1).val < 128 := (i 1).isLt; show ((i 0).val * 128 + (i 1).val) / 128 % 2 < 2; omega⟩
  | ⟨2, _⟩ => ⟨((i 0).val * 128 + (i 1).val) % 128, by have h0 : (i 0).val < 2048 := (i 0).isLt; have h1 : (i 1).val < 128 := (i 1).isLt; show ((i 0).val * 128 + (i 1).val) % 128 < 128; omega⟩
theorem val_main_v259_apply (i : S2048x128.Idx) :
    val_main_v259 (F := F) x0 x1 x2 x3 x4 x5 x6 x7 x8 x9 x10 x11 x12 x13 x14 x15 x16 x17 x18 x19 x20 x21 i = val_main_v258 (F := F) x0 x1 x2 x3 x4 x5 x6 x7 x8 x9 x10 x11 x12 x13 x14 x15 x16 x17 x18 x19 x20 x21 (idx_main_v259 i) := by
  unfold val_main_v259
  generalize val_main_v258 (F := F) x0 x1 x2 x3 x4 x5 x6 x7 x8 x9 x10 x11 x12 x13 x14 x15 x16 x17 x18 x19 x20 x21 = y
  exact shapeCast_apply y shapeCasts_S1024x2x128_S2048x128 i (idx_main_v259 i)
    (by rewrite [Shape.rowMajor_val_three, Shape.rowMajor_val_two]; have h0 : (i 0).val < 2048 := (i 0).isLt; have h1 : (i 1).val < 128 := (i 1).isLt; show (((i 0).val * 128 + (i 1).val) / 256 * 2 + ((i 0).val * 128 + (i 1).val) / 128 % 2) * 128 + ((i 0).val * 128 + (i 1).val) % 128 = (i 0).val * 128 + (i 1).val; omega)

def val_main_v260 : (⟨S2048x128, .f32⟩ : BufTy).Contents (Elt F) :=
  extractStridedSlice S2048x128 ![1024, 0] (val_main_v3 (F := F) x0 x8 x9) slices_S64512x128_S2048x128_1024_0
abbrev idx_main_v260 (i : S2048x128.Idx) : S64512x128.Idx := fun a => match a with
  | ⟨0, _⟩ => ⟨1024 + (i 0).val, by have h0 : (i 0).val < 2048 := (i 0).isLt; show 1024 + (i 0).val < 64512; omega⟩
  | ⟨1, _⟩ => ⟨(i 1).val, (i 1).isLt⟩
theorem val_main_v260_apply (i : S2048x128.Idx) :
    val_main_v260 (F := F) x0 x8 x9 i = val_main_v3 (F := F) x0 x8 x9 (idx_main_v260 i) := by
  unfold val_main_v260
  generalize val_main_v3 (F := F) x0 x8 x9 = y
  exact extractStridedSlice_apply ![1024, 0] y slices_S64512x128_S2048x128_1024_0 i (idx_main_v260 i) (fun a => match a with
    | ⟨0, _⟩ => by show 1024 + (i 0).val = 1024 + (i 0).val; omega
    | ⟨1, _⟩ => by show (i 1).val = 0 + (i 1).val; omega)

def val_main_v261 : (⟨S2048x128, .f32⟩ : BufTy).Contents (Elt F) :=
  extractStridedSlice S2048x128 ![1024, 0] (val_main_v7 (F := F) x1 x10 x11) slices_S64512x128_S2048x128_1024_0
abbrev idx_main_v261 (i : S2048x128.Idx) : S64512x128.Idx := fun a => match a with
  | ⟨0, _⟩ => ⟨1024 + (i 0).val, by have h0 : (i 0).val < 2048 := (i 0).isLt; show 1024 + (i 0).val < 64512; omega⟩
  | ⟨1, _⟩ => ⟨(i 1).val, (i 1).isLt⟩
theorem val_main_v261_apply (i : S2048x128.Idx) :
    val_main_v261 (F := F) x1 x10 x11 i = val_main_v7 (F := F) x1 x10 x11 (idx_main_v261 i) := by
  unfold val_main_v261
  generalize val_main_v7 (F := F) x1 x10 x11 = y
  exact extractStridedSlice_apply ![1024, 0] y slices_S64512x128_S2048x128_1024_0 i (idx_main_v261 i) (fun a => match a with
    | ⟨0, _⟩ => by show 1024 + (i 0).val = 1024 + (i 0).val; omega
    | ⟨1, _⟩ => by show (i 1).val = 0 + (i 1).val; omega)

def val_main_v262 : (⟨S2048x128, .f32⟩ : BufTy).Contents (Elt F) :=
  extractStridedSlice S2048x128 ![1024, 0] (val_main_v19 (F := F) x3 x14 x15) slices_S64512x128_S2048x128_1024_0
abbrev idx_main_v262 (i : S2048x128.Idx) : S64512x128.Idx := fun a => match a with
  | ⟨0, _⟩ => ⟨1024 + (i 0).val, by have h0 : (i 0).val < 2048 := (i 0).isLt; show 1024 + (i 0).val < 64512; omega⟩
  | ⟨1, _⟩ => ⟨(i 1).val, (i 1).isLt⟩
theorem val_main_v262_apply (i : S2048x128.Idx) :
    val_main_v262 (F := F) x3 x14 x15 i = val_main_v19 (F := F) x3 x14 x15 (idx_main_v262 i) := by
  unfold val_main_v262
  generalize val_main_v19 (F := F) x3 x14 x15 = y
  exact extractStridedSlice_apply ![1024, 0] y slices_S64512x128_S2048x128_1024_0 i (idx_main_v262 i) (fun a => match a with
    | ⟨0, _⟩ => by show 1024 + (i 0).val = 1024 + (i 0).val; omega
    | ⟨1, _⟩ => by show (i 1).val = 0 + (i 1).val; omega)

def val_main_v263 : (⟨S2048x128, .f32⟩ : BufTy).Contents (Elt F) :=
  extractStridedSlice S2048x128 ![1024, 0] (val_main_v24 (F := F) x4 x14 x15) slices_S64512x128_S2048x128_1024_0
abbrev idx_main_v263 (i : S2048x128.Idx) : S64512x128.Idx := fun a => match a with
  | ⟨0, _⟩ => ⟨1024 + (i 0).val, by have h0 : (i 0).val < 2048 := (i 0).isLt; show 1024 + (i 0).val < 64512; omega⟩
  | ⟨1, _⟩ => ⟨(i 1).val, (i 1).isLt⟩
theorem val_main_v263_apply (i : S2048x128.Idx) :
    val_main_v263 (F := F) x4 x14 x15 i = val_main_v24 (F := F) x4 x14 x15 (idx_main_v263 i) := by
  unfold val_main_v263
  generalize val_main_v24 (F := F) x4 x14 x15 = y
  exact extractStridedSlice_apply ![1024, 0] y slices_S64512x128_S2048x128_1024_0 i (idx_main_v263 i) (fun a => match a with
    | ⟨0, _⟩ => by show 1024 + (i 0).val = 1024 + (i 0).val; omega
    | ⟨1, _⟩ => by show (i 1).val = 0 + (i 1).val; omega)

def val_main_v264 : (⟨S2048x128, .f32⟩ : BufTy).Contents (Elt F) :=
  extractStridedSlice S2048x128 ![1024, 0] (val_main_v14 (F := F) x2 x5 x12 x13) slices_S64512x128_S2048x128_1024_0
abbrev idx_main_v264 (i : S2048x128.Idx) : S64512x128.Idx := fun a => match a with
  | ⟨0, _⟩ => ⟨1024 + (i 0).val, by have h0 : (i 0).val < 2048 := (i 0).isLt; show 1024 + (i 0).val < 64512; omega⟩
  | ⟨1, _⟩ => ⟨(i 1).val, (i 1).isLt⟩
theorem val_main_v264_apply (i : S2048x128.Idx) :
    val_main_v264 (F := F) x2 x5 x12 x13 i = val_main_v14 (F := F) x2 x5 x12 x13 (idx_main_v264 i) := by
  unfold val_main_v264
  generalize val_main_v14 (F := F) x2 x5 x12 x13 = y
  exact extractStridedSlice_apply ![1024, 0] y slices_S64512x128_S2048x128_1024_0 i (idx_main_v264 i) (fun a => match a with
    | ⟨0, _⟩ => by show 1024 + (i 0).val = 1024 + (i 0).val; omega
    | ⟨1, _⟩ => by show (i 1).val = 0 + (i 1).val; omega)

def val_main_v265 : (⟨S2048x1408, .f32⟩ : BufTy).Contents (Elt F) :=
  concatenate S2048x1408 1 [⟨S2048x128, (val_main_v260 (F := F) x0 x8 x9)⟩, ⟨S2048x128, (val_main_v261 (F := F) x1 x10 x11)⟩, ⟨S2048x128, (val_main_v262 (F := F) x3 x14 x15)⟩, ⟨S2048x128, (val_main_v263 (F := F) x4 x14 x15)⟩, ⟨S2048x128, (val_main_v264 (F := F) x2 x5 x12 x13)⟩, ⟨S2048x128, (val_main_v234 (F := F) x0 x1 x2 x3 x4 x5 x6 x7 x8 x9 x10 x11 x12 x13 x14 x15 x16 x17 x18 x19 x20 x21)⟩, ⟨S2048x128, (val_main_v249 (F := F) x0 x1 x2 x3 x4 x5 x6 x7 x8 x9 x10 x11 x12 x13 x14 x15 x16 x17 x18 x19 x20 x21)⟩, ⟨S2048x128, (val_main_v239 (F := F) x0 x1 x2 x3 x4 x5 x6 x7 x8 x9 x10 x11 x12 x13 x14 x15 x16 x17 x18 x19 x20 x21)⟩, ⟨S2048x128, (val_main_v244 (F := F) x0 x1 x2 x3 x4 x5 x6 x7 x8 x9 x10 x11 x12 x13 x14 x15 x16 x17 x18 x19 x20 x21)⟩, ⟨S2048x128, (val_main_v254 (F := F) x0 x1 x2 x3 x4 x5 x6 x7 x8 x9 x10 x11 x12 x13 x14 x15 x16 x17 x18 x19 x20 x21)⟩, ⟨S2048x128, (val_main_v259 (F := F) x0 x1 x2 x3 x4 x5 x6 x7 x8 x9 x10 x11 x12 x13 x14 x15 x16 x17 x18 x19 x20 x21)⟩] concatenates_S2048x128_S2048x128_S2048x128_S2048x128_S2048x128_S2048x128_S2048x128_S2048x128_S2048x128_S2048x128_S2048x128_S2048x1408_d1

def val_main_v266 : (⟨S2048x512, .f32⟩ : BufTy).Contents (Elt F) :=
  Host.dotGeneral dot_S2048x1408_S1408x512_S2048x512_1_0_0_1_n_n none (val_main_v265 (F := F) x0 x1 x2 x3 x4 x5 x6 x7 x8 x9 x10 x11 x12 x13 x14 x15 x16 x17 x18 x19 x20 x21) (x16)
theorem lhs_main_v266_0 (i : S2048x512.Idx) (q : dot_S2048x1408_S1408x512_S2048x512_1_0_0_1_n_n.contr.Idx) :
    (dot_S2048x1408_S1408x512_S2048x512_1_0_0_1_n_n.lhsIdx i q 0).val = (i 0).val := by
  unfold DotDims.lhsIdx
  rw [dif_neg (show ¬(0 : Fin S2048x1408.rank) ∈ dot_S2048x1408_S1408x512_S2048x512_1_0_0_1_n_n.lhsBatch by decide), dif_pos (show (0 : Fin S2048x1408.rank) ∈ dot_S2048x1408_S1408x512_S2048x512_1_0_0_1_n_n.lhsNonContracting by decide)]
  rfl
theorem lhs_main_v266_1 (i : S2048x512.Idx) (q : dot_S2048x1408_S1408x512_S2048x512_1_0_0_1_n_n.contr.Idx) :
    (dot_S2048x1408_S1408x512_S2048x512_1_0_0_1_n_n.lhsIdx i q 1).val = (q ⟨0, by decide⟩).val :=
  dot_S2048x1408_S1408x512_S2048x512_1_0_0_1_n_n.lhsIdx_val_of_single rfl i q
theorem rhs_main_v266_0 (i : S2048x512.Idx) (q : dot_S2048x1408_S1408x512_S2048x512_1_0_0_1_n_n.contr.Idx) :
    (dot_S2048x1408_S1408x512_S2048x512_1_0_0_1_n_n.rhsIdx i q 0).val = (q ⟨0, by decide⟩).val :=
  dot_S2048x1408_S1408x512_S2048x512_1_0_0_1_n_n.rhsIdx_val_of_single rfl i q
theorem rhs_main_v266_1 (i : S2048x512.Idx) (q : dot_S2048x1408_S1408x512_S2048x512_1_0_0_1_n_n.contr.Idx) :
    (dot_S2048x1408_S1408x512_S2048x512_1_0_0_1_n_n.rhsIdx i q 1).val = (i 1).val := by
  unfold DotDims.rhsIdx
  rw [dif_neg (show ¬(1 : Fin S1408x512.rank) ∈ dot_S2048x1408_S1408x512_S2048x512_1_0_0_1_n_n.rhsBatch by decide), dif_pos (show (1 : Fin S1408x512.rank) ∈ dot_S2048x1408_S1408x512_S2048x512_1_0_0_1_n_n.rhsNonContracting by decide)]
  rfl
abbrev lidx_main_v266 (i : S2048x512.Idx) (k : Fin 1408) : S2048x1408.Idx := fun a => match a with
  | ⟨0, _⟩ => ⟨(i 0).val, (i 0).isLt⟩
  | ⟨1, _⟩ => ⟨k.val, k.isLt⟩
abbrev ridx_main_v266 (i : S2048x512.Idx) (k : Fin 1408) : S1408x512.Idx := fun a => match a with
  | ⟨0, _⟩ => ⟨k.val, k.isLt⟩
  | ⟨1, _⟩ => ⟨(i 1).val, (i 1).isLt⟩

theorem val_main_v266_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S2048x512.Idx) :
    val_main_v266 (F := Ideal) x0 x1 x2 x3 x4 x5 x6 x7 x8 x9 x10 x11 x12 x13 x14 x15 x16 x17 x18 x19 x20 x21 i = ∑ k : Fin 1408, (val_main_v265 (F := Ideal) x0 x1 x2 x3 x4 x5 x6 x7 x8 x9 x10 x11 x12 x13 x14 x15 x16 x17 x18 x19 x20 x21) (lidx_main_v266 i k) * x16 (ridx_main_v266 i k) := by
  unfold val_main_v266
  generalize val_main_v265 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S2048x1408_S1408x512_S2048x512_1_0_0_1_n_n 1408 rfl rfl).symm]
  refine Finset.sum_congr rfl fun k _ => ?_
  have hk := ValueIdx.contrEquiv1_symm_val dot_S2048x1408_S1408x512_S2048x512_1_0_0_1_n_n 1408 rfl rfl k
  have el : dot_S2048x1408_S1408x512_S2048x512_1_0_0_1_n_n.lhsIdx i ((ValueIdx.contrEquiv1 dot_S2048x1408_S1408x512_S2048x512_1_0_0_1_n_n 1408 rfl rfl).symm k) = lidx_main_v266 i k := funext fun a => Fin.ext (by
    match a with
    | ⟨0, _⟩ => exact lhs_main_v266_0 _ _
    | ⟨1, _⟩ => exact (lhs_main_v266_1 _ _).trans hk)
  have er : dot_S2048x1408_S1408x512_S2048x512_1_0_0_1_n_n.rhsIdx i ((ValueIdx.contrEquiv1 dot_S2048x1408_S1408x512_S2048x512_1_0_0_1_n_n 1408 rfl rfl).symm k) = ridx_main_v266 i k := funext fun a => Fin.ext (by
    match a with
    | ⟨0, _⟩ => exact (rhs_main_v266_0 _ _).trans hk
    | ⟨1, _⟩ => exact rhs_main_v266_1 _ _)
  rw [el, er]

def val_main_v267 : (⟨S1x512, .f32⟩ : BufTy).Contents (Elt F) :=
  broadcastInDim S1x512 ![1] bcast_S512_S1x512_1 (x17)
abbrev idx_main_v267 (i : S1x512.Idx) : S512.Idx := fun a => match a with
  | ⟨0, _⟩ => ⟨(i 1).val, (i 1).isLt⟩
theorem val_main_v267_apply (i : S1x512.Idx) :
    val_main_v267 (F := F) x17 i = x17 (idx_main_v267 i) := by
  unfold val_main_v267
  exact broadcastInDim_apply _ bcast_S512_S1x512_1 x17 i (idx_main_v267 i) (fun a => match a with
    | ⟨0, _⟩ => by show (i 1).val = if (512 : Nat) = 1 then 0 else (i 1).val; rw [if_neg (by decide)])

def val_main_v268 : (⟨S2048x512, .f32⟩ : BufTy).Contents (Elt F) :=
  broadcastInDim S2048x512 ![0, 1] bcast_S1x512_S2048x512_0_1 (val_main_v267 (F := F) x17)
abbrev idx_main_v268 (i : S2048x512.Idx) : S1x512.Idx := fun a => match a with
  | ⟨0, _⟩ => ⟨0, Nat.one_pos⟩
  | ⟨1, _⟩ => ⟨(i 1).val, (i 1).isLt⟩
theorem val_main_v268_apply (i : S2048x512.Idx) :
    val_main_v268 (F := F) x17 i = val_main_v267 (F := F) x17 (idx_main_v268 i) := by
  unfold val_main_v268
  generalize val_main_v267 (F := F) x17 = y
  exact broadcastInDim_apply _ bcast_S1x512_S2048x512_0_1 y i (idx_main_v268 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v269 : (⟨S2048x512, .f32⟩ : BufTy).Contents (Elt F) :=
  addf (val_main_v266 (F := F) x0 x1 x2 x3 x4 x5 x6 x7 x8 x9 x10 x11 x12 x13 x14 x15 x16 x17 x18 x19 x20 x21) (val_main_v268 (F := F) x17)
theorem val_main_v269_apply (i : S2048x512.Idx) :
    val_main_v269 (F := F) x0 x1 x2 x3 x4 x5 x6 x7 x8 x9 x10 x11 x12 x13 x14 x15 x16 x17 x18 x19 x20 x21 i = FloatOps.addf (val_main_v266 (F := F) x0 x1 x2 x3 x4 x5 x6 x7 x8 x9 x10 x11 x12 x13 x14 x15 x16 x17 x18 x19 x20 x21 i) (val_main_v268 (F := F) x17 i) := rfl

def val_main_call12_cst : (⟨S_, .f32⟩ : BufTy).Contents (Elt F) :=
  constant S_ .f32 0x00000000#32
theorem val_main_call12_cst_apply (i : S_.Idx) :
    val_main_call12_cst (F := F) i = FloatOps.ofBits .f32 0x00000000#32 := rfl

def val_main_call12_v0 : (⟨S2048x512, .f32⟩ : BufTy).Contents (Elt F) :=
  broadcastInDim S2048x512 ![] bcast_S_S2048x512 (val_main_call12_cst (F := F))
abbrev idx_main_call12_v0 (i : S2048x512.Idx) : S_.Idx := fun a => a.elim0
theorem val_main_call12_v0_apply (i : S2048x512.Idx) :
    val_main_call12_v0 (F := F) i = val_main_call12_cst (F := F) (idx_main_call12_v0 i) := by
  unfold val_main_call12_v0
  generalize val_main_call12_cst (F := F) = y
  exact broadcastInDim_apply _ bcast_S_S2048x512 y i (idx_main_call12_v0 i) (fun a => a.elim0)

def val_main_v270 : (⟨S2048x512, .f32⟩ : BufTy).Contents (Elt F) :=
  maximumf (val_main_v269 (F := F) x0 x1 x2 x3 x4 x5 x6 x7 x8 x9 x10 x11 x12 x13 x14 x15 x16 x17 x18 x19 x20 x21) (val_main_call12_v0 (F := F))
theorem val_main_v270_apply (i : S2048x512.Idx) :
    val_main_v270 (F := F) x0 x1 x2 x3 x4 x5 x6 x7 x8 x9 x10 x11 x12 x13 x14 x15 x16 x17 x18 x19 x20 x21 i = FloatOps.maximumf (val_main_v269 (F := F) x0 x1 x2 x3 x4 x5 x6 x7 x8 x9 x10 x11 x12 x13 x14 x15 x16 x17 x18 x19 x20 x21 i) (val_main_call12_v0 (F := F) i) := rfl

def val_main_v271 : (⟨S2048x256, .f32⟩ : BufTy).Contents (Elt F) :=
  Host.dotGeneral dot_S2048x512_S512x256_S2048x256_1_0_0_1_n_n none (val_main_v270 (F := F) x0 x1 x2 x3 x4 x5 x6 x7 x8 x9 x10 x11 x12 x13 x14 x15 x16 x17 x18 x19 x20 x21) (x18)
theorem lhs_main_v271_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_main_v271_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_main_v271_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_main_v271_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl
abbrev lidx_main_v271 (i : S2048x256.Idx) (k : Fin 512) : S2048x512.Idx := fun a => match a with
  | ⟨0, _⟩ => ⟨(i 0).val, (i 0).isLt⟩
  | ⟨1, _⟩ => ⟨k.val, k.isLt⟩
abbrev ridx_main_v271 (i : S2048x256.Idx) (k : Fin 512) : S512x256.Idx := fun a => match a with
  | ⟨0, _⟩ => ⟨k.val, k.isLt⟩
  | ⟨1, _⟩ => ⟨(i 1).val, (i 1).isLt⟩

theorem val_main_v271_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S2048x256.Idx) :
    val_main_v271 (F := Ideal) x0 x1 x2 x3 x4 x5 x6 x7 x8 x9 x10 x11 x12 x13 x14 x15 x16 x17 x18 x19 x20 x21 i = ∑ k : Fin 512, (val_main_v270 (F := Ideal) x0 x1 x2 x3 x4 x5 x6 x7 x8 x9 x10 x11 x12 x13 x14 x15 x16 x17 x18 x19 x20 x21) (lidx_main_v271 i k) * x18 (ridx_main_v271 i k) := by
  unfold val_main_v271
  generalize val_main_v270 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx i ((ValueIdx.contrEquiv1 dot_S2048x512_S512x256_S2048x256_1_0_0_1_n_n 512 rfl rfl).symm k) = lidx_main_v271 i k := funext fun a => Fin.ext (by
    match a with
    | ⟨0, _⟩ => exact lhs_main_v271_0 _ _
    | ⟨1, _⟩ => exact (lhs_main_v271_1 _ _).trans hk)
  have er : dot_S2048x512_S512x256_S2048x256_1_0_0_1_n_n.rhsIdx i ((ValueIdx.contrEquiv1 dot_S2048x512_S512x256_S2048x256_1_0_0_1_n_n 512 rfl rfl).symm k) = ridx_main_v271 i k := funext fun a => Fin.ext (by
    match a with
    | ⟨0, _⟩ => exact (rhs_main_v271_0 _ _).trans hk
    | ⟨1, _⟩ => exact rhs_main_v271_1 _ _)
  rw [el, er]

def val_main_v272 : (⟨S1x256, .f32⟩ : BufTy).Contents (Elt F) :=
  broadcastInDim S1x256 ![1] bcast_S256_S1x256_1 (x19)
abbrev idx_main_v272 (i : S1x256.Idx) : S256.Idx := fun a => match a with
  | ⟨0, _⟩ => ⟨(i 1).val, (i 1).isLt⟩
theorem val_main_v272_apply (i : S1x256.Idx) :
    val_main_v272 (F := F) x19 i = x19 (idx_main_v272 i) := by
  unfold val_main_v272
  exact broadcastInDim_apply _ bcast_S256_S1x256_1 x19 i (idx_main_v272 i) (fun a => match a with
    | ⟨0, _⟩ => by show (i 1).val = if (256 : Nat) = 1 then 0 else (i 1).val; rw [if_neg (by decide)])

def val_main_v273 : (⟨S2048x256, .f32⟩ : BufTy).Contents (Elt F) :=
  broadcastInDim S2048x256 ![0, 1] bcast_S1x256_S2048x256_0_1 (val_main_v272 (F := F) x19)
abbrev idx_main_v273 (i : S2048x256.Idx) : S1x256.Idx := fun a => match a with
  | ⟨0, _⟩ => ⟨0, Nat.one_pos⟩
  | ⟨1, _⟩ => ⟨(i 1).val, (i 1).isLt⟩
theorem val_main_v273_apply (i : S2048x256.Idx) :
    val_main_v273 (F := F) x19 i = val_main_v272 (F := F) x19 (idx_main_v273 i) := by
  unfold val_main_v273
  generalize val_main_v272 (F := F) x19 = y
  exact broadcastInDim_apply _ bcast_S1x256_S2048x256_0_1 y i (idx_main_v273 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v274 : (⟨S2048x256, .f32⟩ : BufTy).Contents (Elt F) :=
  addf (val_main_v271 (F := F) x0 x1 x2 x3 x4 x5 x6 x7 x8 x9 x10 x11 x12 x13 x14 x15 x16 x17 x18 x19 x20 x21) (val_main_v273 (F := F) x19)
theorem val_main_v274_apply (i : S2048x256.Idx) :
    val_main_v274 (F := F) x0 x1 x2 x3 x4 x5 x6 x7 x8 x9 x10 x11 x12 x13 x14 x15 x16 x17 x18 x19 x20 x21 i = FloatOps.addf (val_main_v271 (F := F) x0 x1 x2 x3 x4 x5 x6 x7 x8 x9 x10 x11 x12 x13 x14 x15 x16 x17 x18 x19 x20 x21 i) (val_main_v273 (F := F) x19 i) := rfl

def val_main_call13_cst : (⟨S_, .f32⟩ : BufTy).Contents (Elt F) :=
  constant S_ .f32 0x00000000#32
theorem val_main_call13_cst_apply (i : S_.Idx) :
    val_main_call13_cst (F := F) i = FloatOps.ofBits .f32 0x00000000#32 := rfl

def val_main_call13_v0 : (⟨S2048x256, .f32⟩ : BufTy).Contents (Elt F) :=
  broadcastInDim S2048x256 ![] bcast_S_S2048x256 (val_main_call13_cst (F := F))
abbrev idx_main_call13_v0 (i : S2048x256.Idx) : S_.Idx := fun a => a.elim0
theorem val_main_call13_v0_apply (i : S2048x256.Idx) :
    val_main_call13_v0 (F := F) i = val_main_call13_cst (F := F) (idx_main_call13_v0 i) := by
  unfold val_main_call13_v0
  generalize val_main_call13_cst (F := F) = y
  exact broadcastInDim_apply _ bcast_S_S2048x256 y i (idx_main_call13_v0 i) (fun a => a.elim0)

def val_main_v275 : (⟨S2048x256, .f32⟩ : BufTy).Contents (Elt F) :=
  maximumf (val_main_v274 (F := F) x0 x1 x2 x3 x4 x5 x6 x7 x8 x9 x10 x11 x12 x13 x14 x15 x16 x17 x18 x19 x20 x21) (val_main_call13_v0 (F := F))
theorem val_main_v275_apply (i : S2048x256.Idx) :
    val_main_v275 (F := F) x0 x1 x2 x3 x4 x5 x6 x7 x8 x9 x10 x11 x12 x13 x14 x15 x16 x17 x18 x19 x20 x21 i = FloatOps.maximumf (val_main_v274 (F := F) x0 x1 x2 x3 x4 x5 x6 x7 x8 x9 x10 x11 x12 x13 x14 x15 x16 x17 x18 x19 x20 x21 i) (val_main_call13_v0 (F := F) i) := rfl

def val_main_v276 : (⟨S2048x128, .f32⟩ : BufTy).Contents (Elt F) :=
  Host.dotGeneral dot_S2048x256_S256x128_S2048x128_1_0_0_1_n_n none (val_main_v275 (F := F) x0 x1 x2 x3 x4 x5 x6 x7 x8 x9 x10 x11 x12 x13 x14 x15 x16 x17 x18 x19 x20 x21) (x20)
theorem lhs_main_v276_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_main_v276_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_main_v276_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_main_v276_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl
abbrev lidx_main_v276 (i : S2048x128.Idx) (k : Fin 256) : S2048x256.Idx := fun a => match a with
  | ⟨0, _⟩ => ⟨(i 0).val, (i 0).isLt⟩
  | ⟨1, _⟩ => ⟨k.val, k.isLt⟩
abbrev ridx_main_v276 (i : S2048x128.Idx) (k : Fin 256) : S256x128.Idx := fun a => match a with
  | ⟨0, _⟩ => ⟨k.val, k.isLt⟩
  | ⟨1, _⟩ => ⟨(i 1).val, (i 1).isLt⟩

theorem val_main_v276_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S2048x128.Idx) :
    val_main_v276 (F := Ideal) x0 x1 x2 x3 x4 x5 x6 x7 x8 x9 x10 x11 x12 x13 x14 x15 x16 x17 x18 x19 x20 x21 i = ∑ k : Fin 256, (val_main_v275 (F := Ideal) x0 x1 x2 x3 x4 x5 x6 x7 x8 x9 x10 x11 x12 x13 x14 x15 x16 x17 x18 x19 x20 x21) (lidx_main_v276 i k) * x20 (ridx_main_v276 i k) := by
  unfold val_main_v276
  generalize val_main_v275 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx i ((ValueIdx.contrEquiv1 dot_S2048x256_S256x128_S2048x128_1_0_0_1_n_n 256 rfl rfl).symm k) = lidx_main_v276 i k := funext fun a => Fin.ext (by
    match a with
    | ⟨0, _⟩ => exact lhs_main_v276_0 _ _
    | ⟨1, _⟩ => exact (lhs_main_v276_1 _ _).trans hk)
  have er : dot_S2048x256_S256x128_S2048x128_1_0_0_1_n_n.rhsIdx i ((ValueIdx.contrEquiv1 dot_S2048x256_S256x128_S2048x128_1_0_0_1_n_n 256 rfl rfl).symm k) = ridx_main_v276 i k := funext fun a => Fin.ext (by
    match a with
    | ⟨0, _⟩ => exact (rhs_main_v276_0 _ _).trans hk
    | ⟨1, _⟩ => exact rhs_main_v276_1 _ _)
  rw [el, er]

def val_main_v277 : (⟨S1x128, .f32⟩ : BufTy).Contents (Elt F) :=
  broadcastInDim S1x128 ![1] bcast_S128_S1x128_1 (x21)
abbrev idx_main_v277 (i : S1x128.Idx) : S128.Idx := fun a => match a with
  | ⟨0, _⟩ => ⟨(i 1).val, (i 1).isLt⟩
theorem val_main_v277_apply (i : S1x128.Idx) :
    val_main_v277 (F := F) x21 i = x21 (idx_main_v277 i) := by
  unfold val_main_v277
  exact broadcastInDim_apply _ bcast_S128_S1x128_1 x21 i (idx_main_v277 i) (fun a => match a with
    | ⟨0, _⟩ => by show (i 1).val = if (128 : Nat) = 1 then 0 else (i 1).val; rw [if_neg (by decide)])

def val_main_v278 : (⟨S2048x128, .f32⟩ : BufTy).Contents (Elt F) :=
  broadcastInDim S2048x128 ![0, 1] bcast_S1x128_S2048x128_0_1 (val_main_v277 (F := F) x21)
abbrev idx_main_v278 (i : S2048x128.Idx) : S1x128.Idx := fun a => match a with
  | ⟨0, _⟩ => ⟨0, Nat.one_pos⟩
  | ⟨1, _⟩ => ⟨(i 1).val, (i 1).isLt⟩
theorem val_main_v278_apply (i : S2048x128.Idx) :
    val_main_v278 (F := F) x21 i = val_main_v277 (F := F) x21 (idx_main_v278 i) := by
  unfold val_main_v278
  generalize val_main_v277 (F := F) x21 = y
  exact broadcastInDim_apply _ bcast_S1x128_S2048x128_0_1 y i (idx_main_v278 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v279 : (⟨S2048x128, .f32⟩ : BufTy).Contents (Elt F) :=
  addf (val_main_v276 (F := F) x0 x1 x2 x3 x4 x5 x6 x7 x8 x9 x10 x11 x12 x13 x14 x15 x16 x17 x18 x19 x20 x21) (val_main_v278 (F := F) x21)
theorem val_main_v279_apply (i : S2048x128.Idx) :
    val_main_v279 (F := F) x0 x1 x2 x3 x4 x5 x6 x7 x8 x9 x10 x11 x12 x13 x14 x15 x16 x17 x18 x19 x20 x21 i = FloatOps.addf (val_main_v276 (F := F) x0 x1 x2 x3 x4 x5 x6 x7 x8 x9 x10 x11 x12 x13 x14 x15 x16 x17 x18 x19 x20 x21 i) (val_main_v278 (F := F) x21 i) := rfl

def val_main_call14_cst : (⟨S_, .f32⟩ : BufTy).Contents (Elt F) :=
  constant S_ .f32 0x00000000#32
theorem val_main_call14_cst_apply (i : S_.Idx) :
    val_main_call14_cst (F := F) i = FloatOps.ofBits .f32 0x00000000#32 := rfl

def val_main_call14_v0 : (⟨S2048x128, .f32⟩ : BufTy).Contents (Elt F) :=
  broadcastInDim S2048x128 ![] bcast_S_S2048x128 (val_main_call14_cst (F := F))
abbrev idx_main_call14_v0 (i : S2048x128.Idx) : S_.Idx := fun a => a.elim0
theorem val_main_call14_v0_apply (i : S2048x128.Idx) :
    val_main_call14_v0 (F := F) i = val_main_call14_cst (F := F) (idx_main_call14_v0 i) := by
  unfold val_main_call14_v0
  generalize val_main_call14_cst (F := F) = y
  exact broadcastInDim_apply _ bcast_S_S2048x128 y i (idx_main_call14_v0 i) (fun a => a.elim0)

def val_main_v280 : (⟨S2048x128, .f32⟩ : BufTy).Contents (Elt F) :=
  maximumf (val_main_v279 (F := F) x0 x1 x2 x3 x4 x5 x6 x7 x8 x9 x10 x11 x12 x13 x14 x15 x16 x17 x18 x19 x20 x21) (val_main_call14_v0 (F := F))
theorem val_main_v280_apply (i : S2048x128.Idx) :
    val_main_v280 (F := F) x0 x1 x2 x3 x4 x5 x6 x7 x8 x9 x10 x11 x12 x13 x14 x15 x16 x17 x18 x19 x20 x21 i = FloatOps.maximumf (val_main_v279 (F := F) x0 x1 x2 x3 x4 x5 x6 x7 x8 x9 x10 x11 x12 x13 x14 x15 x16 x17 x18 x19 x20 x21 i) (val_main_call14_v0 (F := F) i) := rfl

def val_main_v281 : (⟨S1024x1x2x128, .f32⟩ : BufTy).Contents (Elt F) :=
  shapeCast _ (val_main_v280 (F := F) x0 x1 x2 x3 x4 x5 x6 x7 x8 x9 x10 x11 x12 x13 x14 x15 x16 x17 x18 x19 x20 x21) shapeCasts_S2048x128_S1024x1x2x128
abbrev idx_main_v281 (i : S1024x1x2x128.Idx) : S2048x128.Idx := fun a => match a with
  | ⟨0, _⟩ => ⟨((((i 0).val * 1 + (i 1).val) * 2 + (i 2).val) * 128 + (i 3).val) / 128, by have h0 : (i 0).val < 1024 := (i 0).isLt; have h1 : (i 1).val < 1 := (i 1).isLt; have h2 : (i 2).val < 2 := (i 2).isLt; have h3 : (i 3).val < 128 := (i 3).isLt; show ((((i 0).val * 1 + (i 1).val) * 2 + (i 2).val) * 128 + (i 3).val) / 128 < 2048; omega⟩
  | ⟨1, _⟩ => ⟨((((i 0).val * 1 + (i 1).val) * 2 + (i 2).val) * 128 + (i 3).val) % 128, by have h0 : (i 0).val < 1024 := (i 0).isLt; have h1 : (i 1).val < 1 := (i 1).isLt; have h2 : (i 2).val < 2 := (i 2).isLt; have h3 : (i 3).val < 128 := (i 3).isLt; show ((((i 0).val * 1 + (i 1).val) * 2 + (i 2).val) * 128 + (i 3).val) % 128 < 128; omega⟩
theorem val_main_v281_apply (i : S1024x1x2x128.Idx) :
    val_main_v281 (F := F) x0 x1 x2 x3 x4 x5 x6 x7 x8 x9 x10 x11 x12 x13 x14 x15 x16 x17 x18 x19 x20 x21 i = val_main_v280 (F := F) x0 x1 x2 x3 x4 x5 x6 x7 x8 x9 x10 x11 x12 x13 x14 x15 x16 x17 x18 x19 x20 x21 (idx_main_v281 i) := by
  unfold val_main_v281
  generalize val_main_v280 (F := F) x0 x1 x2 x3 x4 x5 x6 x7 x8 x9 x10 x11 x12 x13 x14 x15 x16 x17 x18 x19 x20 x21 = y
  exact shapeCast_apply y shapeCasts_S2048x128_S1024x1x2x128 i (idx_main_v281 i)
    (by rewrite [Shape.rowMajor_val_two, Shape.rowMajor_val_four]; have h0 : (i 0).val < 1024 := (i 0).isLt; have h1 : (i 1).val < 1 := (i 1).isLt; have h2 : (i 2).val < 2 := (i 2).isLt; have h3 : (i 3).val < 128 := (i 3).isLt; show ((((i 0).val * 1 + (i 1).val) * 2 + (i 2).val) * 128 + (i 3).val) / 128 * 128 + ((((i 0).val * 1 + (i 1).val) * 2 + (i 2).val) * 128 + (i 3).val) % 128 = (((i 0).val * 1 + (i 1).val) * 2 + (i 2).val) * 128 + (i 3).val; omega)

def val_main_v282 : (⟨S1024x1x2x128, .f32⟩ : BufTy).Contents (Elt F) :=
  shapeCast _ (val_main_v234 (F := F) x0 x1 x2 x3 x4 x5 x6 x7 x8 x9 x10 x11 x12 x13 x14 x15 x16 x17 x18 x19 x20 x21) shapeCasts_S2048x128_S1024x1x2x128
abbrev idx_main_v282 (i : S1024x1x2x128.Idx) : S2048x128.Idx := fun a => match a with
  | ⟨0, _⟩ => ⟨((((i 0).val * 1 + (i 1).val) * 2 + (i 2).val) * 128 + (i 3).val) / 128, by have h0 : (i 0).val < 1024 := (i 0).isLt; have h1 : (i 1).val < 1 := (i 1).isLt; have h2 : (i 2).val < 2 := (i 2).isLt; have h3 : (i 3).val < 128 := (i 3).isLt; show ((((i 0).val * 1 + (i 1).val) * 2 + (i 2).val) * 128 + (i 3).val) / 128 < 2048; omega⟩
  | ⟨1, _⟩ => ⟨((((i 0).val * 1 + (i 1).val) * 2 + (i 2).val) * 128 + (i 3).val) % 128, by have h0 : (i 0).val < 1024 := (i 0).isLt; have h1 : (i 1).val < 1 := (i 1).isLt; have h2 : (i 2).val < 2 := (i 2).isLt; have h3 : (i 3).val < 128 := (i 3).isLt; show ((((i 0).val * 1 + (i 1).val) * 2 + (i 2).val) * 128 + (i 3).val) % 128 < 128; omega⟩
theorem val_main_v282_apply (i : S1024x1x2x128.Idx) :
    val_main_v282 (F := F) x0 x1 x2 x3 x4 x5 x6 x7 x8 x9 x10 x11 x12 x13 x14 x15 x16 x17 x18 x19 x20 x21 i = val_main_v234 (F := F) x0 x1 x2 x3 x4 x5 x6 x7 x8 x9 x10 x11 x12 x13 x14 x15 x16 x17 x18 x19 x20 x21 (idx_main_v282 i) := by
  unfold val_main_v282
  generalize val_main_v234 (F := F) x0 x1 x2 x3 x4 x5 x6 x7 x8 x9 x10 x11 x12 x13 x14 x15 x16 x17 x18 x19 x20 x21 = y
  exact shapeCast_apply y shapeCasts_S2048x128_S1024x1x2x128 i (idx_main_v282 i)
    (by rewrite [Shape.rowMajor_val_two, Shape.rowMajor_val_four]; have h0 : (i 0).val < 1024 := (i 0).isLt; have h1 : (i 1).val < 1 := (i 1).isLt; have h2 : (i 2).val < 2 := (i 2).isLt; have h3 : (i 3).val < 128 := (i 3).isLt; show ((((i 0).val * 1 + (i 1).val) * 2 + (i 2).val) * 128 + (i 3).val) / 128 * 128 + ((((i 0).val * 1 + (i 1).val) * 2 + (i 2).val) * 128 + (i 3).val) % 128 = (((i 0).val * 1 + (i 1).val) * 2 + (i 2).val) * 128 + (i 3).val; omega)

def val_main_v283 : (⟨S1024x1x2x128, .f32⟩ : BufTy).Contents (Elt F) :=
  shapeCast _ (val_main_v249 (F := F) x0 x1 x2 x3 x4 x5 x6 x7 x8 x9 x10 x11 x12 x13 x14 x15 x16 x17 x18 x19 x20 x21) shapeCasts_S2048x128_S1024x1x2x128
abbrev idx_main_v283 (i : S1024x1x2x128.Idx) : S2048x128.Idx := fun a => match a with
  | ⟨0, _⟩ => ⟨((((i 0).val * 1 + (i 1).val) * 2 + (i 2).val) * 128 + (i 3).val) / 128, by have h0 : (i 0).val < 1024 := (i 0).isLt; have h1 : (i 1).val < 1 := (i 1).isLt; have h2 : (i 2).val < 2 := (i 2).isLt; have h3 : (i 3).val < 128 := (i 3).isLt; show ((((i 0).val * 1 + (i 1).val) * 2 + (i 2).val) * 128 + (i 3).val) / 128 < 2048; omega⟩
  | ⟨1, _⟩ => ⟨((((i 0).val * 1 + (i 1).val) * 2 + (i 2).val) * 128 + (i 3).val) % 128, by have h0 : (i 0).val < 1024 := (i 0).isLt; have h1 : (i 1).val < 1 := (i 1).isLt; have h2 : (i 2).val < 2 := (i 2).isLt; have h3 : (i 3).val < 128 := (i 3).isLt; show ((((i 0).val * 1 + (i 1).val) * 2 + (i 2).val) * 128 + (i 3).val) % 128 < 128; omega⟩
theorem val_main_v283_apply (i : S1024x1x2x128.Idx) :
    val_main_v283 (F := F) x0 x1 x2 x3 x4 x5 x6 x7 x8 x9 x10 x11 x12 x13 x14 x15 x16 x17 x18 x19 x20 x21 i = val_main_v249 (F := F) x0 x1 x2 x3 x4 x5 x6 x7 x8 x9 x10 x11 x12 x13 x14 x15 x16 x17 x18 x19 x20 x21 (idx_main_v283 i) := by
  unfold val_main_v283
  generalize val_main_v249 (F := F) x0 x1 x2 x3 x4 x5 x6 x7 x8 x9 x10 x11 x12 x13 x14 x15 x16 x17 x18 x19 x20 x21 = y
  exact shapeCast_apply y shapeCasts_S2048x128_S1024x1x2x128 i (idx_main_v283 i)
    (by rewrite [Shape.rowMajor_val_two, Shape.rowMajor_val_four]; have h0 : (i 0).val < 1024 := (i 0).isLt; have h1 : (i 1).val < 1 := (i 1).isLt; have h2 : (i 2).val < 2 := (i 2).isLt; have h3 : (i 3).val < 128 := (i 3).isLt; show ((((i 0).val * 1 + (i 1).val) * 2 + (i 2).val) * 128 + (i 3).val) / 128 * 128 + ((((i 0).val * 1 + (i 1).val) * 2 + (i 2).val) * 128 + (i 3).val) % 128 = (((i 0).val * 1 + (i 1).val) * 2 + (i 2).val) * 128 + (i 3).val; omega)

def val_main_v284 : (⟨S1024, .f32⟩ : BufTy).Contents (Elt F) :=
  extractStridedSlice S1024 ![0] (val_main_v25 (F := F) x6) slices_S64512_S1024_0
abbrev idx_main_v284 (i : S1024.Idx) : S64512.Idx := fun a => match a with
  | ⟨0, _⟩ => ⟨(i 0).val, by have h0 : (i 0).val < 1024 := (i 0).isLt; show (i 0).val < 64512; omega⟩
theorem val_main_v284_apply (i : S1024.Idx) :
    val_main_v284 (F := F) x6 i = val_main_v25 (F := F) x6 (idx_main_v284 i) := by
  unfold val_main_v284
  generalize val_main_v25 (F := F) x6 = y
  exact extractStridedSlice_apply ![0] y slices_S64512_S1024_0 i (idx_main_v284 i) (fun a => match a with
    | ⟨0, _⟩ => by show (i 0).val = 0 + (i 0).val; omega)

def val_main_v285 : (⟨S1024x1x1, .f32⟩ : BufTy).Contents (Elt F) :=
  shapeCast _ (val_main_v284 (F := F) x6) shapeCasts_S1024_S1024x1x1
abbrev idx_main_v285 (i : S1024x1x1.Idx) : S1024.Idx := fun a => match a with
  | ⟨0, _⟩ => ⟨((i 0).val * 1 + (i 1).val) * 1 + (i 2).val, by have h0 : (i 0).val < 1024 := (i 0).isLt; have h1 : (i 1).val < 1 := (i 1).isLt; have h2 : (i 2).val < 1 := (i 2).isLt; show ((i 0).val * 1 + (i 1).val) * 1 + (i 2).val < 1024; omega⟩
theorem val_main_v285_apply (i : S1024x1x1.Idx) :
    val_main_v285 (F := F) x6 i = val_main_v284 (F := F) x6 (idx_main_v285 i) := by
  unfold val_main_v285
  generalize val_main_v284 (F := F) x6 = y
  exact shapeCast_apply y shapeCasts_S1024_S1024x1x1 i (idx_main_v285 i)
    (by rewrite [Shape.rowMajor_val_one, Shape.rowMajor_val_three]; have h0 : (i 0).val < 1024 := (i 0).isLt; have h1 : (i 1).val < 1 := (i 1).isLt; have h2 : (i 2).val < 1 := (i 2).isLt; show ((i 0).val * 1 + (i 1).val) * 1 + (i 2).val = ((i 0).val * 1 + (i 1).val) * 1 + (i 2).val; omega)

def val_main_v286 : (⟨S1024, .f32⟩ : BufTy).Contents (Elt F) :=
  extractStridedSlice S1024 ![0] (val_main_v26 (F := F) x7) slices_S64512_S1024_0
abbrev idx_main_v286 (i : S1024.Idx) : S64512.Idx := fun a => match a with
  | ⟨0, _⟩ => ⟨(i 0).val, by have h0 : (i 0).val < 1024 := (i 0).isLt; show (i 0).val < 64512; omega⟩
theorem val_main_v286_apply (i : S1024.Idx) :
    val_main_v286 (F := F) x7 i = val_main_v26 (F := F) x7 (idx_main_v286 i) := by
  unfold val_main_v286
  generalize val_main_v26 (F := F) x7 = y
  exact extractStridedSlice_apply ![0] y slices_S64512_S1024_0 i (idx_main_v286 i) (fun a => match a with
    | ⟨0, _⟩ => by show (i 0).val = 0 + (i 0).val; omega)

def val_main_v287 : (⟨S1024x1x1, .f32⟩ : BufTy).Contents (Elt F) :=
  shapeCast _ (val_main_v286 (F := F) x7) shapeCasts_S1024_S1024x1x1
abbrev idx_main_v287 (i : S1024x1x1.Idx) : S1024.Idx := fun a => match a with
  | ⟨0, _⟩ => ⟨((i 0).val * 1 + (i 1).val) * 1 + (i 2).val, by have h0 : (i 0).val < 1024 := (i 0).isLt; have h1 : (i 1).val < 1 := (i 1).isLt; have h2 : (i 2).val < 1 := (i 2).isLt; show ((i 0).val * 1 + (i 1).val) * 1 + (i 2).val < 1024; omega⟩
theorem val_main_v287_apply (i : S1024x1x1.Idx) :
    val_main_v287 (F := F) x7 i = val_main_v286 (F := F) x7 (idx_main_v287 i) := by
  unfold val_main_v287
  generalize val_main_v286 (F := F) x7 = y
  exact shapeCast_apply y shapeCasts_S1024_S1024x1x1 i (idx_main_v287 i)
    (by rewrite [Shape.rowMajor_val_one, Shape.rowMajor_val_three]; have h0 : (i 0).val < 1024 := (i 0).isLt; have h1 : (i 1).val < 1 := (i 1).isLt; have h2 : (i 2).val < 1 := (i 2).isLt; show ((i 0).val * 1 + (i 1).val) * 1 + (i 2).val = ((i 0).val * 1 + (i 1).val) * 1 + (i 2).val; omega)

def val_main_v288 : (⟨S1024x1x1x128, .f32⟩ : BufTy).Contents (Elt F) :=
  extractStridedSlice S1024x1x1x128 ![0, 0, 0, 0] (val_main_v281 (F := F) x0 x1 x2 x3 x4 x5 x6 x7 x8 x9 x10 x11 x12 x13 x14 x15 x16 x17 x18 x19 x20 x21) slices_S1024x1x2x128_S1024x1x1x128_0_0_0_0
abbrev idx_main_v288 (i : S1024x1x1x128.Idx) : S1024x1x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v288_apply (i : S1024x1x1x128.Idx) :
    val_main_v288 (F := F) x0 x1 x2 x3 x4 x5 x6 x7 x8 x9 x10 x11 x12 x13 x14 x15 x16 x17 x18 x19 x20 x21 i = val_main_v281 (F := F) x0 x1 x2 x3 x4 x5 x6 x7 x8 x9 x10 x11 x12 x13 x14 x15 x16 x17 x18 x19 x20 x21 (idx_main_v288 i) := by
  unfold val_main_v288
  generalize val_main_v281 (F := F) x0 x1 x2 x3 x4 x5 x6 x7 x8 x9 x10 x11 x12 x13 x14 x15 x16 x17 x18 x19 x20 x21 = y
  exact extractStridedSlice_apply ![0, 0, 0, 0] y slices_S1024x1x2x128_S1024x1x1x128_0_0_0_0 i (idx_main_v288 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v289 : (⟨S1024x1x128, .f32⟩ : BufTy).Contents (Elt F) :=
  shapeCast _ (val_main_v288 (F := F) x0 x1 x2 x3 x4 x5 x6 x7 x8 x9 x10 x11 x12 x13 x14 x15 x16 x17 x18 x19 x20 x21) shapeCasts_S1024x1x1x128_S1024x1x128
abbrev idx_main_v289 (i : S1024x1x128.Idx) : S1024x1x1x128.Idx := fun a => match a with
  | ⟨0, _⟩ => ⟨(((i 0).val * 1 + (i 1).val) * 128 + (i 2).val) / 128, by have h0 : (i 0).val < 1024 := (i 0).isLt; have h1 : (i 1).val < 1 := (i 1).isLt; have h2 : (i 2).val < 128 := (i 2).isLt; show (((i 0).val * 1 + (i 1).val) * 128 + (i 2).val) / 128 < 1024; omega⟩
  | ⟨1, _⟩ => ⟨0, Nat.one_pos⟩
  | ⟨2, _⟩ => ⟨0, Nat.one_pos⟩
  | ⟨3, _⟩ => ⟨(((i 0).val * 1 + (i 1).val) * 128 + (i 2).val) % 128, by have h0 : (i 0).val < 1024 := (i 0).isLt; have h1 : (i 1).val < 1 := (i 1).isLt; have h2 : (i 2).val < 128 := (i 2).isLt; show (((i 0).val * 1 + (i 1).val) * 128 + (i 2).val) % 128 < 128; omega⟩
theorem val_main_v289_apply (i : S1024x1x128.Idx) :
    val_main_v289 (F := F) x0 x1 x2 x3 x4 x5 x6 x7 x8 x9 x10 x11 x12 x13 x14 x15 x16 x17 x18 x19 x20 x21 i = val_main_v288 (F := F) x0 x1 x2 x3 x4 x5 x6 x7 x8 x9 x10 x11 x12 x13 x14 x15 x16 x17 x18 x19 x20 x21 (idx_main_v289 i) := by
  unfold val_main_v289
  generalize val_main_v288 (F := F) x0 x1 x2 x3 x4 x5 x6 x7 x8 x9 x10 x11 x12 x13 x14 x15 x16 x17 x18 x19 x20 x21 = y
  exact shapeCast_apply y shapeCasts_S1024x1x1x128_S1024x1x128 i (idx_main_v289 i)
    (by rewrite [Shape.rowMajor_val_four, Shape.rowMajor_val_three]; have h0 : (i 0).val < 1024 := (i 0).isLt; have h1 : (i 1).val < 1 := (i 1).isLt; have h2 : (i 2).val < 128 := (i 2).isLt; show (((((i 0).val * 1 + (i 1).val) * 128 + (i 2).val) / 128 * 1 + 0) * 1 + 0) * 128 + (((i 0).val * 1 + (i 1).val) * 128 + (i 2).val) % 128 = ((i 0).val * 1 + (i 1).val) * 128 + (i 2).val; omega)

def val_main_v290 : (⟨S1024x1x128, .f32⟩ : BufTy).Contents (Elt F) :=
  broadcastInDim S1024x1x128 ![0, 1, 2] bcast_S1024x1x1_S1024x1x128_0_1_2 (val_main_v285 (F := F) x6)
abbrev idx_main_v290 (i : S1024x1x128.Idx) : S1024x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v290_apply (i : S1024x1x128.Idx) :
    val_main_v290 (F := F) x6 i = val_main_v285 (F := F) x6 (idx_main_v290 i) := by
  unfold val_main_v290
  generalize val_main_v285 (F := F) x6 = y
  exact broadcastInDim_apply _ bcast_S1024x1x1_S1024x1x128_0_1_2 y i (idx_main_v290 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

def val_main_v291 : (⟨S1024x1x128, .f32⟩ : BufTy).Contents (Elt F) :=
  mulf (val_main_v289 (F := F) x0 x1 x2 x3 x4 x5 x6 x7 x8 x9 x10 x11 x12 x13 x14 x15 x16 x17 x18 x19 x20 x21) (val_main_v290 (F := F) x6)
theorem val_main_v291_apply (i : S1024x1x128.Idx) :
    val_main_v291 (F := F) x0 x1 x2 x3 x4 x5 x6 x7 x8 x9 x10 x11 x12 x13 x14 x15 x16 x17 x18 x19 x20 x21 i = FloatOps.mulf (val_main_v289 (F := F) x0 x1 x2 x3 x4 x5 x6 x7 x8 x9 x10 x11 x12 x13 x14 x15 x16 x17 x18 x19 x20 x21 i) (val_main_v290 (F := F) x6 i) := rfl

def val_main_v292 : (⟨S1024x128, .f32⟩ : BufTy).Contents (Elt F) :=
  shapeCast _ (val_main_v291 (F := F) x0 x1 x2 x3 x4 x5 x6 x7 x8 x9 x10 x11 x12 x13 x14 x15 x16 x17 x18 x19 x20 x21) shapeCasts_S1024x1x128_S1024x128
abbrev idx_main_v292 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v292_apply (i : S1024x128.Idx) :
    val_main_v292 (F := F) x0 x1 x2 x3 x4 x5 x6 x7 x8 x9 x10 x11 x12 x13 x14 x15 x16 x17 x18 x19 x20 x21 i = val_main_v291 (F := F) x0 x1 x2 x3 x4 x5 x6 x7 x8 x9 x10 x11 x12 x13 x14 x15 x16 x17 x18 x19 x20 x21 (idx_main_v292 i) := by
  unfold val_main_v292
  generalize val_main_v291 (F := F) x0 x1 x2 x3 x4 x5 x6 x7 x8 x9 x10 x11 x12 x13 x14 x15 x16 x17 x18 x19 x20 x21 = y
  exact shapeCast_apply y shapeCasts_S1024x1x128_S1024x128 i (idx_main_v292 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v293 : (⟨S1024x1x1x128, .f32⟩ : BufTy).Contents (Elt F) :=
  extractStridedSlice S1024x1x1x128 ![0, 0, 0, 0] (val_main_v282 (F := F) x0 x1 x2 x3 x4 x5 x6 x7 x8 x9 x10 x11 x12 x13 x14 x15 x16 x17 x18 x19 x20 x21) slices_S1024x1x2x128_S1024x1x1x128_0_0_0_0
abbrev idx_main_v293 (i : S1024x1x1x128.Idx) : S1024x1x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v293_apply (i : S1024x1x1x128.Idx) :
    val_main_v293 (F := F) x0 x1 x2 x3 x4 x5 x6 x7 x8 x9 x10 x11 x12 x13 x14 x15 x16 x17 x18 x19 x20 x21 i = val_main_v282 (F := F) x0 x1 x2 x3 x4 x5 x6 x7 x8 x9 x10 x11 x12 x13 x14 x15 x16 x17 x18 x19 x20 x21 (idx_main_v293 i) := by
  unfold val_main_v293
  generalize val_main_v282 (F := F) x0 x1 x2 x3 x4 x5 x6 x7 x8 x9 x10 x11 x12 x13 x14 x15 x16 x17 x18 x19 x20 x21 = y
  exact extractStridedSlice_apply ![0, 0, 0, 0] y slices_S1024x1x2x128_S1024x1x1x128_0_0_0_0 i (idx_main_v293 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v294 : (⟨S1024x1x128, .f32⟩ : BufTy).Contents (Elt F) :=
  shapeCast _ (val_main_v293 (F := F) x0 x1 x2 x3 x4 x5 x6 x7 x8 x9 x10 x11 x12 x13 x14 x15 x16 x17 x18 x19 x20 x21) shapeCasts_S1024x1x1x128_S1024x1x128
abbrev idx_main_v294 (i : S1024x1x128.Idx) : S1024x1x1x128.Idx := fun a => match a with
  | ⟨0, _⟩ => ⟨(((i 0).val * 1 + (i 1).val) * 128 + (i 2).val) / 128, by have h0 : (i 0).val < 1024 := (i 0).isLt; have h1 : (i 1).val < 1 := (i 1).isLt; have h2 : (i 2).val < 128 := (i 2).isLt; show (((i 0).val * 1 + (i 1).val) * 128 + (i 2).val) / 128 < 1024; omega⟩
  | ⟨1, _⟩ => ⟨0, Nat.one_pos⟩
  | ⟨2, _⟩ => ⟨0, Nat.one_pos⟩
  | ⟨3, _⟩ => ⟨(((i 0).val * 1 + (i 1).val) * 128 + (i 2).val) % 128, by have h0 : (i 0).val < 1024 := (i 0).isLt; have h1 : (i 1).val < 1 := (i 1).isLt; have h2 : (i 2).val < 128 := (i 2).isLt; show (((i 0).val * 1 + (i 1).val) * 128 + (i 2).val) % 128 < 128; omega⟩
theorem val_main_v294_apply (i : S1024x1x128.Idx) :
    val_main_v294 (F := F) x0 x1 x2 x3 x4 x5 x6 x7 x8 x9 x10 x11 x12 x13 x14 x15 x16 x17 x18 x19 x20 x21 i = val_main_v293 (F := F) x0 x1 x2 x3 x4 x5 x6 x7 x8 x9 x10 x11 x12 x13 x14 x15 x16 x17 x18 x19 x20 x21 (idx_main_v294 i) := by
  unfold val_main_v294
  generalize val_main_v293 (F := F) x0 x1 x2 x3 x4 x5 x6 x7 x8 x9 x10 x11 x12 x13 x14 x15 x16 x17 x18 x19 x20 x21 = y
  exact shapeCast_apply y shapeCasts_S1024x1x1x128_S1024x1x128 i (idx_main_v294 i)
    (by rewrite [Shape.rowMajor_val_four, Shape.rowMajor_val_three]; have h0 : (i 0).val < 1024 := (i 0).isLt; have h1 : (i 1).val < 1 := (i 1).isLt; have h2 : (i 2).val < 128 := (i 2).isLt; show (((((i 0).val * 1 + (i 1).val) * 128 + (i 2).val) / 128 * 1 + 0) * 1 + 0) * 128 + (((i 0).val * 1 + (i 1).val) * 128 + (i 2).val) % 128 = ((i 0).val * 1 + (i 1).val) * 128 + (i 2).val; omega)

def val_main_v295 : (⟨S1024x1x128, .f32⟩ : BufTy).Contents (Elt F) :=
  broadcastInDim S1024x1x128 ![0, 1, 2] bcast_S1024x1x1_S1024x1x128_0_1_2 (val_main_v285 (F := F) x6)
abbrev idx_main_v295 (i : S1024x1x128.Idx) : S1024x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v295_apply (i : S1024x1x128.Idx) :
    val_main_v295 (F := F) x6 i = val_main_v285 (F := F) x6 (idx_main_v295 i) := by
  unfold val_main_v295
  generalize val_main_v285 (F := F) x6 = y
  exact broadcastInDim_apply _ bcast_S1024x1x1_S1024x1x128_0_1_2 y i (idx_main_v295 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

def val_main_v296 : (⟨S1024x1x128, .f32⟩ : BufTy).Contents (Elt F) :=
  mulf (val_main_v294 (F := F) x0 x1 x2 x3 x4 x5 x6 x7 x8 x9 x10 x11 x12 x13 x14 x15 x16 x17 x18 x19 x20 x21) (val_main_v295 (F := F) x6)
theorem val_main_v296_apply (i : S1024x1x128.Idx) :
    val_main_v296 (F := F) x0 x1 x2 x3 x4 x5 x6 x7 x8 x9 x10 x11 x12 x13 x14 x15 x16 x17 x18 x19 x20 x21 i = FloatOps.mulf (val_main_v294 (F := F) x0 x1 x2 x3 x4 x5 x6 x7 x8 x9 x10 x11 x12 x13 x14 x15 x16 x17 x18 x19 x20 x21 i) (val_main_v295 (F := F) x6 i) := rfl

def val_main_v297 : (⟨S1024x128, .f32⟩ : BufTy).Contents (Elt F) :=
  shapeCast _ (val_main_v296 (F := F) x0 x1 x2 x3 x4 x5 x6 x7 x8 x9 x10 x11 x12 x13 x14 x15 x16 x17 x18 x19 x20 x21) shapeCasts_S1024x1x128_S1024x128
abbrev idx_main_v297 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v297_apply (i : S1024x128.Idx) :
    val_main_v297 (F := F) x0 x1 x2 x3 x4 x5 x6 x7 x8 x9 x10 x11 x12 x13 x14 x15 x16 x17 x18 x19 x20 x21 i = val_main_v296 (F := F) x0 x1 x2 x3 x4 x5 x6 x7 x8 x9 x10 x11 x12 x13 x14 x15 x16 x17 x18 x19 x20 x21 (idx_main_v297 i) := by
  unfold val_main_v297
  generalize val_main_v296 (F := F) x0 x1 x2 x3 x4 x5 x6 x7 x8 x9 x10 x11 x12 x13 x14 x15 x16 x17 x18 x19 x20 x21 = y
  exact shapeCast_apply y shapeCasts_S1024x1x128_S1024x128 i (idx_main_v297 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v298 : (⟨S1024x1x1x128, .f32⟩ : BufTy).Contents (Elt F) :=
  extractStridedSlice S1024x1x1x128 ![0, 0, 0, 0] (val_main_v283 (F := F) x0 x1 x2 x3 x4 x5 x6 x7 x8 x9 x10 x11 x12 x13 x14 x15 x16 x17 x18 x19 x20 x21) slices_S1024x1x2x128_S1024x1x1x128_0_0_0_0
abbrev idx_main_v298 (i : S1024x1x1x128.Idx) : S1024x1x2x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
  | ⟨3, _⟩ => ⟨(i 3).val, (i 3).isLt⟩
theorem val_main_v298_apply (i : S1024x1x1x128.Idx) :
    val_main_v298 (F := F) x0 x1 x2 x3 x4 x5 x6 x7 x8 x9 x10 x11 x12 x13 x14 x15 x16 x17 x18 x19 x20 x21 i = val_main_v283 (F := F) x0 x1 x2 x3 x4 x5 x6 x7 x8 x9 x10 x11 x12 x13 x14 x15 x16 x17 x18 x19 x20 x21 (idx_main_v298 i) := by
  unfold val_main_v298
  generalize val_main_v283 (F := F) x0 x1 x2 x3 x4 x5 x6 x7 x8 x9 x10 x11 x12 x13 x14 x15 x16 x17 x18 x19 x20 x21 = y
  exact extractStridedSlice_apply ![0, 0, 0, 0] y slices_S1024x1x2x128_S1024x1x1x128_0_0_0_0 i (idx_main_v298 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

def val_main_v299 : (⟨S1024x1x128, .f32⟩ : BufTy).Contents (Elt F) :=
  shapeCast _ (val_main_v298 (F := F) x0 x1 x2 x3 x4 x5 x6 x7 x8 x9 x10 x11 x12 x13 x14 x15 x16 x17 x18 x19 x20 x21) shapeCasts_S1024x1x1x128_S1024x1x128
abbrev idx_main_v299 (i : S1024x1x128.Idx) : S1024x1x1x128.Idx := fun a => match a with
  | ⟨0, _⟩ => ⟨(((i 0).val * 1 + (i 1).val) * 128 + (i 2).val) / 128, by have h0 : (i 0).val < 1024 := (i 0).isLt; have h1 : (i 1).val < 1 := (i 1).isLt; have h2 : (i 2).val < 128 := (i 2).isLt; show (((i 0).val * 1 + (i 1).val) * 128 + (i 2).val) / 128 < 1024; omega⟩
  | ⟨1, _⟩ => ⟨0, Nat.one_pos⟩
  | ⟨2, _⟩ => ⟨0, Nat.one_pos⟩
  | ⟨3, _⟩ => ⟨(((i 0).val * 1 + (i 1).val) * 128 + (i 2).val) % 128, by have h0 : (i 0).val < 1024 := (i 0).isLt; have h1 : (i 1).val < 1 := (i 1).isLt; have h2 : (i 2).val < 128 := (i 2).isLt; show (((i 0).val * 1 + (i 1).val) * 128 + (i 2).val) % 128 < 128; omega⟩
theorem val_main_v299_apply (i : S1024x1x128.Idx) :
    val_main_v299 (F := F) x0 x1 x2 x3 x4 x5 x6 x7 x8 x9 x10 x11 x12 x13 x14 x15 x16 x17 x18 x19 x20 x21 i = val_main_v298 (F := F) x0 x1 x2 x3 x4 x5 x6 x7 x8 x9 x10 x11 x12 x13 x14 x15 x16 x17 x18 x19 x20 x21 (idx_main_v299 i) := by
  unfold val_main_v299
  generalize val_main_v298 (F := F) x0 x1 x2 x3 x4 x5 x6 x7 x8 x9 x10 x11 x12 x13 x14 x15 x16 x17 x18 x19 x20 x21 = y
  exact shapeCast_apply y shapeCasts_S1024x1x1x128_S1024x1x128 i (idx_main_v299 i)
    (by rewrite [Shape.rowMajor_val_four, Shape.rowMajor_val_three]; have h0 : (i 0).val < 1024 := (i 0).isLt; have h1 : (i 1).val < 1 := (i 1).isLt; have h2 : (i 2).val < 128 := (i 2).isLt; show (((((i 0).val * 1 + (i 1).val) * 128 + (i 2).val) / 128 * 1 + 0) * 1 + 0) * 128 + (((i 0).val * 1 + (i 1).val) * 128 + (i 2).val) % 128 = ((i 0).val * 1 + (i 1).val) * 128 + (i 2).val; omega)

def val_main_v300 : (⟨S1024x1x128, .f32⟩ : BufTy).Contents (Elt F) :=
  broadcastInDim S1024x1x128 ![0, 1, 2] bcast_S1024x1x1_S1024x1x128_0_1_2 (val_main_v285 (F := F) x6)
abbrev idx_main_v300 (i : S1024x1x128.Idx) : S1024x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v300_apply (i : S1024x1x128.Idx) :
    val_main_v300 (F := F) x6 i = val_main_v285 (F := F) x6 (idx_main_v300 i) := by
  unfold val_main_v300
  generalize val_main_v285 (F := F) x6 = y
  exact broadcastInDim_apply _ bcast_S1024x1x1_S1024x1x128_0_1_2 y i (idx_main_v300 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

def val_main_v301 : (⟨S1024x1x128, .f32⟩ : BufTy).Contents (Elt F) :=
  mulf (val_main_v299 (F := F) x0 x1 x2 x3 x4 x5 x6 x7 x8 x9 x10 x11 x12 x13 x14 x15 x16 x17 x18 x19 x20 x21) (val_main_v300 (F := F) x6)
theorem val_main_v301_apply (i : S1024x1x128.Idx) :
    val_main_v301 (F := F) x0 x1 x2 x3 x4 x5 x6 x7 x8 x9 x10 x11 x12 x13 x14 x15 x16 x17 x18 x19 x20 x21 i = FloatOps.mulf (val_main_v299 (F := F) x0 x1 x2 x3 x4 x5 x6 x7 x8 x9 x10 x11 x12 x13 x14 x15 x16 x17 x18 x19 x20 x21 i) (val_main_v300 (F := F) x6 i) := rfl

def val_main_v302 : (⟨S1024x128, .f32⟩ : BufTy).Contents (Elt F) :=
  shapeCast _ (val_main_v301 (F := F) x0 x1 x2 x3 x4 x5 x6 x7 x8 x9 x10 x11 x12 x13 x14 x15 x16 x17 x18 x19 x20 x21) shapeCasts_S1024x1x128_S1024x128
abbrev idx_main_v302 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v302_apply (i : S1024x128.Idx) :
    val_main_v302 (F := F) x0 x1 x2 x3 x4 x5 x6 x7 x8 x9 x10 x11 x12 x13 x14 x15 x16 x17 x18 x19 x20 x21 i = val_main_v301 (F := F) x0 x1 x2 x3 x4 x5 x6 x7 x8 x9 x10 x11 x12 x13 x14 x15 x16 x17 x18 x19 x20 x21 (idx_main_v302 i) := by
  unfold val_main_v302
  generalize val_main_v301 (F := F) x0 x1 x2 x3 x4 x5 x6 x7 x8 x9 x10 x11 x12 x13 x14 x15 x16 x17 x18 x19 x20 x21 = y
  exact shapeCast_apply y shapeCasts_S1024x1x128_S1024x128 i (idx_main_v302 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v303 : (⟨S1024x1x1x128, .f32⟩ : BufTy).Contents (Elt F) :=
  extractStridedSlice S1024x1x1x128 ![0, 0, 1, 0] (val_main_v281 (F := F) x0 x1 x2 x3 x4 x5 x6 x7 x8 x9 x10 x11 x12 x13 x14 x15 x16 x17 x18 x19 x20 x21) slices_S1024x1x2x128_S1024x1x1x128_0_0_1_0
abbrev idx_main_v303 (i : S1024x1x1x128.Idx) : S1024x1x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v303_apply (i : S1024x1x1x128.Idx) :
    val_main_v303 (F := F) x0 x1 x2 x3 x4 x5 x6 x7 x8 x9 x10 x11 x12 x13 x14 x15 x16 x17 x18 x19 x20 x21 i = val_main_v281 (F := F) x0 x1 x2 x3 x4 x5 x6 x7 x8 x9 x10 x11 x12 x13 x14 x15 x16 x17 x18 x19 x20 x21 (idx_main_v303 i) := by
  unfold val_main_v303
  generalize val_main_v281 (F := F) x0 x1 x2 x3 x4 x5 x6 x7 x8 x9 x10 x11 x12 x13 x14 x15 x16 x17 x18 x19 x20 x21 = y
  exact extractStridedSlice_apply ![0, 0, 1, 0] y slices_S1024x1x2x128_S1024x1x1x128_0_0_1_0 i (idx_main_v303 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v304 : (⟨S1024x1x128, .f32⟩ : BufTy).Contents (Elt F) :=
  shapeCast _ (val_main_v303 (F := F) x0 x1 x2 x3 x4 x5 x6 x7 x8 x9 x10 x11 x12 x13 x14 x15 x16 x17 x18 x19 x20 x21) shapeCasts_S1024x1x1x128_S1024x1x128
abbrev idx_main_v304 (i : S1024x1x128.Idx) : S1024x1x1x128.Idx := fun a => match a with
  | ⟨0, _⟩ => ⟨(((i 0).val * 1 + (i 1).val) * 128 + (i 2).val) / 128, by have h0 : (i 0).val < 1024 := (i 0).isLt; have h1 : (i 1).val < 1 := (i 1).isLt; have h2 : (i 2).val < 128 := (i 2).isLt; show (((i 0).val * 1 + (i 1).val) * 128 + (i 2).val) / 128 < 1024; omega⟩
  | ⟨1, _⟩ => ⟨0, Nat.one_pos⟩
  | ⟨2, _⟩ => ⟨0, Nat.one_pos⟩
  | ⟨3, _⟩ => ⟨(((i 0).val * 1 + (i 1).val) * 128 + (i 2).val) % 128, by have h0 : (i 0).val < 1024 := (i 0).isLt; have h1 : (i 1).val < 1 := (i 1).isLt; have h2 : (i 2).val < 128 := (i 2).isLt; show (((i 0).val * 1 + (i 1).val) * 128 + (i 2).val) % 128 < 128; omega⟩
theorem val_main_v304_apply (i : S1024x1x128.Idx) :
    val_main_v304 (F := F) x0 x1 x2 x3 x4 x5 x6 x7 x8 x9 x10 x11 x12 x13 x14 x15 x16 x17 x18 x19 x20 x21 i = val_main_v303 (F := F) x0 x1 x2 x3 x4 x5 x6 x7 x8 x9 x10 x11 x12 x13 x14 x15 x16 x17 x18 x19 x20 x21 (idx_main_v304 i) := by
  unfold val_main_v304
  generalize val_main_v303 (F := F) x0 x1 x2 x3 x4 x5 x6 x7 x8 x9 x10 x11 x12 x13 x14 x15 x16 x17 x18 x19 x20 x21 = y
  exact shapeCast_apply y shapeCasts_S1024x1x1x128_S1024x1x128 i (idx_main_v304 i)
    (by rewrite [Shape.rowMajor_val_four, Shape.rowMajor_val_three]; have h0 : (i 0).val < 1024 := (i 0).isLt; have h1 : (i 1).val < 1 := (i 1).isLt; have h2 : (i 2).val < 128 := (i 2).isLt; show (((((i 0).val * 1 + (i 1).val) * 128 + (i 2).val) / 128 * 1 + 0) * 1 + 0) * 128 + (((i 0).val * 1 + (i 1).val) * 128 + (i 2).val) % 128 = ((i 0).val * 1 + (i 1).val) * 128 + (i 2).val; omega)

def val_main_v305 : (⟨S1024x1x128, .f32⟩ : BufTy).Contents (Elt F) :=
  broadcastInDim S1024x1x128 ![0, 1, 2] bcast_S1024x1x1_S1024x1x128_0_1_2 (val_main_v287 (F := F) x7)
abbrev idx_main_v305 (i : S1024x1x128.Idx) : S1024x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v305_apply (i : S1024x1x128.Idx) :
    val_main_v305 (F := F) x7 i = val_main_v287 (F := F) x7 (idx_main_v305 i) := by
  unfold val_main_v305
  generalize val_main_v287 (F := F) x7 = y
  exact broadcastInDim_apply _ bcast_S1024x1x1_S1024x1x128_0_1_2 y i (idx_main_v305 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

def val_main_v306 : (⟨S1024x1x128, .f32⟩ : BufTy).Contents (Elt F) :=
  mulf (val_main_v304 (F := F) x0 x1 x2 x3 x4 x5 x6 x7 x8 x9 x10 x11 x12 x13 x14 x15 x16 x17 x18 x19 x20 x21) (val_main_v305 (F := F) x7)
theorem val_main_v306_apply (i : S1024x1x128.Idx) :
    val_main_v306 (F := F) x0 x1 x2 x3 x4 x5 x6 x7 x8 x9 x10 x11 x12 x13 x14 x15 x16 x17 x18 x19 x20 x21 i = FloatOps.mulf (val_main_v304 (F := F) x0 x1 x2 x3 x4 x5 x6 x7 x8 x9 x10 x11 x12 x13 x14 x15 x16 x17 x18 x19 x20 x21 i) (val_main_v305 (F := F) x7 i) := rfl

def val_main_v307 : (⟨S1024x128, .f32⟩ : BufTy).Contents (Elt F) :=
  shapeCast _ (val_main_v306 (F := F) x0 x1 x2 x3 x4 x5 x6 x7 x8 x9 x10 x11 x12 x13 x14 x15 x16 x17 x18 x19 x20 x21) shapeCasts_S1024x1x128_S1024x128
abbrev idx_main_v307 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v307_apply (i : S1024x128.Idx) :
    val_main_v307 (F := F) x0 x1 x2 x3 x4 x5 x6 x7 x8 x9 x10 x11 x12 x13 x14 x15 x16 x17 x18 x19 x20 x21 i = val_main_v306 (F := F) x0 x1 x2 x3 x4 x5 x6 x7 x8 x9 x10 x11 x12 x13 x14 x15 x16 x17 x18 x19 x20 x21 (idx_main_v307 i) := by
  unfold val_main_v307
  generalize val_main_v306 (F := F) x0 x1 x2 x3 x4 x5 x6 x7 x8 x9 x10 x11 x12 x13 x14 x15 x16 x17 x18 x19 x20 x21 = y
  exact shapeCast_apply y shapeCasts_S1024x1x128_S1024x128 i (idx_main_v307 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v308 : (⟨S1024x1x1x128, .f32⟩ : BufTy).Contents (Elt F) :=
  extractStridedSlice S1024x1x1x128 ![0, 0, 1, 0] (val_main_v282 (F := F) x0 x1 x2 x3 x4 x5 x6 x7 x8 x9 x10 x11 x12 x13 x14 x15 x16 x17 x18 x19 x20 x21) slices_S1024x1x2x128_S1024x1x1x128_0_0_1_0
abbrev idx_main_v308 (i : S1024x1x1x128.Idx) : S1024x1x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v308_apply (i : S1024x1x1x128.Idx) :
    val_main_v308 (F := F) x0 x1 x2 x3 x4 x5 x6 x7 x8 x9 x10 x11 x12 x13 x14 x15 x16 x17 x18 x19 x20 x21 i = val_main_v282 (F := F) x0 x1 x2 x3 x4 x5 x6 x7 x8 x9 x10 x11 x12 x13 x14 x15 x16 x17 x18 x19 x20 x21 (idx_main_v308 i) := by
  unfold val_main_v308
  generalize val_main_v282 (F := F) x0 x1 x2 x3 x4 x5 x6 x7 x8 x9 x10 x11 x12 x13 x14 x15 x16 x17 x18 x19 x20 x21 = y
  exact extractStridedSlice_apply ![0, 0, 1, 0] y slices_S1024x1x2x128_S1024x1x1x128_0_0_1_0 i (idx_main_v308 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v309 : (⟨S1024x1x128, .f32⟩ : BufTy).Contents (Elt F) :=
  shapeCast _ (val_main_v308 (F := F) x0 x1 x2 x3 x4 x5 x6 x7 x8 x9 x10 x11 x12 x13 x14 x15 x16 x17 x18 x19 x20 x21) shapeCasts_S1024x1x1x128_S1024x1x128
abbrev idx_main_v309 (i : S1024x1x128.Idx) : S1024x1x1x128.Idx := fun a => match a with
  | ⟨0, _⟩ => ⟨(((i 0).val * 1 + (i 1).val) * 128 + (i 2).val) / 128, by have h0 : (i 0).val < 1024 := (i 0).isLt; have h1 : (i 1).val < 1 := (i 1).isLt; have h2 : (i 2).val < 128 := (i 2).isLt; show (((i 0).val * 1 + (i 1).val) * 128 + (i 2).val) / 128 < 1024; omega⟩
  | ⟨1, _⟩ => ⟨0, Nat.one_pos⟩
  | ⟨2, _⟩ => ⟨0, Nat.one_pos⟩
  | ⟨3, _⟩ => ⟨(((i 0).val * 1 + (i 1).val) * 128 + (i 2).val) % 128, by have h0 : (i 0).val < 1024 := (i 0).isLt; have h1 : (i 1).val < 1 := (i 1).isLt; have h2 : (i 2).val < 128 := (i 2).isLt; show (((i 0).val * 1 + (i 1).val) * 128 + (i 2).val) % 128 < 128; omega⟩
theorem val_main_v309_apply (i : S1024x1x128.Idx) :
    val_main_v309 (F := F) x0 x1 x2 x3 x4 x5 x6 x7 x8 x9 x10 x11 x12 x13 x14 x15 x16 x17 x18 x19 x20 x21 i = val_main_v308 (F := F) x0 x1 x2 x3 x4 x5 x6 x7 x8 x9 x10 x11 x12 x13 x14 x15 x16 x17 x18 x19 x20 x21 (idx_main_v309 i) := by
  unfold val_main_v309
  generalize val_main_v308 (F := F) x0 x1 x2 x3 x4 x5 x6 x7 x8 x9 x10 x11 x12 x13 x14 x15 x16 x17 x18 x19 x20 x21 = y
  exact shapeCast_apply y shapeCasts_S1024x1x1x128_S1024x1x128 i (idx_main_v309 i)
    (by rewrite [Shape.rowMajor_val_four, Shape.rowMajor_val_three]; have h0 : (i 0).val < 1024 := (i 0).isLt; have h1 : (i 1).val < 1 := (i 1).isLt; have h2 : (i 2).val < 128 := (i 2).isLt; show (((((i 0).val * 1 + (i 1).val) * 128 + (i 2).val) / 128 * 1 + 0) * 1 + 0) * 128 + (((i 0).val * 1 + (i 1).val) * 128 + (i 2).val) % 128 = ((i 0).val * 1 + (i 1).val) * 128 + (i 2).val; omega)

def val_main_v310 : (⟨S1024x1x128, .f32⟩ : BufTy).Contents (Elt F) :=
  broadcastInDim S1024x1x128 ![0, 1, 2] bcast_S1024x1x1_S1024x1x128_0_1_2 (val_main_v287 (F := F) x7)
abbrev idx_main_v310 (i : S1024x1x128.Idx) : S1024x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v310_apply (i : S1024x1x128.Idx) :
    val_main_v310 (F := F) x7 i = val_main_v287 (F := F) x7 (idx_main_v310 i) := by
  unfold val_main_v310
  generalize val_main_v287 (F := F) x7 = y
  exact broadcastInDim_apply _ bcast_S1024x1x1_S1024x1x128_0_1_2 y i (idx_main_v310 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

def val_main_v311 : (⟨S1024x1x128, .f32⟩ : BufTy).Contents (Elt F) :=
  mulf (val_main_v309 (F := F) x0 x1 x2 x3 x4 x5 x6 x7 x8 x9 x10 x11 x12 x13 x14 x15 x16 x17 x18 x19 x20 x21) (val_main_v310 (F := F) x7)
theorem val_main_v311_apply (i : S1024x1x128.Idx) :
    val_main_v311 (F := F) x0 x1 x2 x3 x4 x5 x6 x7 x8 x9 x10 x11 x12 x13 x14 x15 x16 x17 x18 x19 x20 x21 i = FloatOps.mulf (val_main_v309 (F := F) x0 x1 x2 x3 x4 x5 x6 x7 x8 x9 x10 x11 x12 x13 x14 x15 x16 x17 x18 x19 x20 x21 i) (val_main_v310 (F := F) x7 i) := rfl

def val_main_v312 : (⟨S1024x128, .f32⟩ : BufTy).Contents (Elt F) :=
  shapeCast _ (val_main_v311 (F := F) x0 x1 x2 x3 x4 x5 x6 x7 x8 x9 x10 x11 x12 x13 x14 x15 x16 x17 x18 x19 x20 x21) shapeCasts_S1024x1x128_S1024x128
abbrev idx_main_v312 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v312_apply (i : S1024x128.Idx) :
    val_main_v312 (F := F) x0 x1 x2 x3 x4 x5 x6 x7 x8 x9 x10 x11 x12 x13 x14 x15 x16 x17 x18 x19 x20 x21 i = val_main_v311 (F := F) x0 x1 x2 x3 x4 x5 x6 x7 x8 x9 x10 x11 x12 x13 x14 x15 x16 x17 x18 x19 x20 x21 (idx_main_v312 i) := by
  unfold val_main_v312
  generalize val_main_v311 (F := F) x0 x1 x2 x3 x4 x5 x6 x7 x8 x9 x10 x11 x12 x13 x14 x15 x16 x17 x18 x19 x20 x21 = y
  exact shapeCast_apply y shapeCasts_S1024x1x128_S1024x128 i (idx_main_v312 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v313 : (⟨S1024x1x1x128, .f32⟩ : BufTy).Contents (Elt F) :=
  extractStridedSlice S1024x1x1x128 ![0, 0, 1, 0] (val_main_v283 (F := F) x0 x1 x2 x3 x4 x5 x6 x7 x8 x9 x10 x11 x12 x13 x14 x15 x16 x17 x18 x19 x20 x21) slices_S1024x1x2x128_S1024x1x1x128_0_0_1_0
abbrev idx_main_v313 (i : S1024x1x1x128.Idx) : S1024x1x2x128.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
  | ⟨3, _⟩ => ⟨(i 3).val, (i 3).isLt⟩
theorem val_main_v313_apply (i : S1024x1x1x128.Idx) :
    val_main_v313 (F := F) x0 x1 x2 x3 x4 x5 x6 x7 x8 x9 x10 x11 x12 x13 x14 x15 x16 x17 x18 x19 x20 x21 i = val_main_v283 (F := F) x0 x1 x2 x3 x4 x5 x6 x7 x8 x9 x10 x11 x12 x13 x14 x15 x16 x17 x18 x19 x20 x21 (idx_main_v313 i) := by
  unfold val_main_v313
  generalize val_main_v283 (F := F) x0 x1 x2 x3 x4 x5 x6 x7 x8 x9 x10 x11 x12 x13 x14 x15 x16 x17 x18 x19 x20 x21 = y
  exact extractStridedSlice_apply ![0, 0, 1, 0] y slices_S1024x1x2x128_S1024x1x1x128_0_0_1_0 i (idx_main_v313 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega
    | ⟨3, _⟩ => by show (i 3).val = 0 + (i 3).val; omega)

def val_main_v314 : (⟨S1024x1x128, .f32⟩ : BufTy).Contents (Elt F) :=
  shapeCast _ (val_main_v313 (F := F) x0 x1 x2 x3 x4 x5 x6 x7 x8 x9 x10 x11 x12 x13 x14 x15 x16 x17 x18 x19 x20 x21) shapeCasts_S1024x1x1x128_S1024x1x128
abbrev idx_main_v314 (i : S1024x1x128.Idx) : S1024x1x1x128.Idx := fun a => match a with
  | ⟨0, _⟩ => ⟨(((i 0).val * 1 + (i 1).val) * 128 + (i 2).val) / 128, by have h0 : (i 0).val < 1024 := (i 0).isLt; have h1 : (i 1).val < 1 := (i 1).isLt; have h2 : (i 2).val < 128 := (i 2).isLt; show (((i 0).val * 1 + (i 1).val) * 128 + (i 2).val) / 128 < 1024; omega⟩
  | ⟨1, _⟩ => ⟨0, Nat.one_pos⟩
  | ⟨2, _⟩ => ⟨0, Nat.one_pos⟩
  | ⟨3, _⟩ => ⟨(((i 0).val * 1 + (i 1).val) * 128 + (i 2).val) % 128, by have h0 : (i 0).val < 1024 := (i 0).isLt; have h1 : (i 1).val < 1 := (i 1).isLt; have h2 : (i 2).val < 128 := (i 2).isLt; show (((i 0).val * 1 + (i 1).val) * 128 + (i 2).val) % 128 < 128; omega⟩
theorem val_main_v314_apply (i : S1024x1x128.Idx) :
    val_main_v314 (F := F) x0 x1 x2 x3 x4 x5 x6 x7 x8 x9 x10 x11 x12 x13 x14 x15 x16 x17 x18 x19 x20 x21 i = val_main_v313 (F := F) x0 x1 x2 x3 x4 x5 x6 x7 x8 x9 x10 x11 x12 x13 x14 x15 x16 x17 x18 x19 x20 x21 (idx_main_v314 i) := by
  unfold val_main_v314
  generalize val_main_v313 (F := F) x0 x1 x2 x3 x4 x5 x6 x7 x8 x9 x10 x11 x12 x13 x14 x15 x16 x17 x18 x19 x20 x21 = y
  exact shapeCast_apply y shapeCasts_S1024x1x1x128_S1024x1x128 i (idx_main_v314 i)
    (by rewrite [Shape.rowMajor_val_four, Shape.rowMajor_val_three]; have h0 : (i 0).val < 1024 := (i 0).isLt; have h1 : (i 1).val < 1 := (i 1).isLt; have h2 : (i 2).val < 128 := (i 2).isLt; show (((((i 0).val * 1 + (i 1).val) * 128 + (i 2).val) / 128 * 1 + 0) * 1 + 0) * 128 + (((i 0).val * 1 + (i 1).val) * 128 + (i 2).val) % 128 = ((i 0).val * 1 + (i 1).val) * 128 + (i 2).val; omega)

def val_main_v315 : (⟨S1024x1x128, .f32⟩ : BufTy).Contents (Elt F) :=
  broadcastInDim S1024x1x128 ![0, 1, 2] bcast_S1024x1x1_S1024x1x128_0_1_2 (val_main_v287 (F := F) x7)
abbrev idx_main_v315 (i : S1024x1x128.Idx) : S1024x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v315_apply (i : S1024x1x128.Idx) :
    val_main_v315 (F := F) x7 i = val_main_v287 (F := F) x7 (idx_main_v315 i) := by
  unfold val_main_v315
  generalize val_main_v287 (F := F) x7 = y
  exact broadcastInDim_apply _ bcast_S1024x1x1_S1024x1x128_0_1_2 y i (idx_main_v315 i) (fun a => match a with
    | ⟨0, _⟩ => by show (i 0).val = if (1024 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

def val_main_v316 : (⟨S1024x1x128, .f32⟩ : BufTy).Contents (Elt F) :=
  mulf (val_main_v314 (F := F) x0 x1 x2 x3 x4 x5 x6 x7 x8 x9 x10 x11 x12 x13 x14 x15 x16 x17 x18 x19 x20 x21) (val_main_v315 (F := F) x7)
theorem val_main_v316_apply (i : S1024x1x128.Idx) :
    val_main_v316 (F := F) x0 x1 x2 x3 x4 x5 x6 x7 x8 x9 x10 x11 x12 x13 x14 x15 x16 x17 x18 x19 x20 x21 i = FloatOps.mulf (val_main_v314 (F := F) x0 x1 x2 x3 x4 x5 x6 x7 x8 x9 x10 x11 x12 x13 x14 x15 x16 x17 x18 x19 x20 x21 i) (val_main_v315 (F := F) x7 i) := rfl

def val_main_v317 : (⟨S1024x128, .f32⟩ : BufTy).Contents (Elt F) :=
  shapeCast _ (val_main_v316 (F := F) x0 x1 x2 x3 x4 x5 x6 x7 x8 x9 x10 x11 x12 x13 x14 x15 x16 x17 x18 x19 x20 x21) shapeCasts_S1024x1x128_S1024x128
abbrev idx_main_v317 (i : S1024x128.Idx) : S1024x1x128.Idx := fun a => match a with
  | ⟨0, _⟩ => ⟨((i 0).val * 128 + (i 1).val) / 128, by have h0 : (i 0).val < 1024 := (i 0).isLt; have h1 : (i 1).val < 128 := (i 1).isLt; show ((i 0).val * 128 + (i 1).val) / 128 < 1024; omega⟩
  | ⟨1, _⟩ => ⟨0, Nat.one_pos⟩
  | ⟨2, _⟩ => ⟨((i 0).val * 128 + (i 1).val) % 128, by have h0 : (i 0).val < 1024 := (i 0).isLt; have h1 : (i 1).val < 128 := (i 1).isLt; show ((i 0).val * 128 + (i 1).val) % 128 < 128; omega⟩
theorem val_main_v317_apply (i : S1024x128.Idx) :
    val_main_v317 (F := F) x0 x1 x2 x3 x4 x5 x6 x7 x8 x9 x10 x11 x12 x13 x14 x15 x16 x17 x18 x19 x20 x21 i = val_main_v316 (F := F) x0 x1 x2 x3 x4 x5 x6 x7 x8 x9 x10 x11 x12 x13 x14 x15 x16 x17 x18 x19 x20 x21 (idx_main_v317 i) := by
  unfold val_main_v317
  generalize val_main_v316 (F := F) x0 x1 x2 x3 x4 x5 x6 x7 x8 x9 x10 x11 x12 x13 x14 x15 x16 x17 x18 x19 x20 x21 = y
  exact shapeCast_apply y shapeCasts_S1024x1x128_S1024x128 i (idx_main_v317 i)
    (by rewrite [Shape.rowMajor_val_three, Shape.rowMajor_val_two]; have h0 : (i 0).val < 1024 := (i 0).isLt; have h1 : (i 1).val < 128 := (i 1).isLt; show (((i 0).val * 128 + (i 1).val) / 128 * 1 + 0) * 128 + ((i 0).val * 128 + (i 1).val) % 128 = (i 0).val * 128 + (i 1).val; omega)

def val_main_v318 : (⟨S1024x128, .f32⟩ : BufTy).Contents (Elt F) :=
  extractStridedSlice S1024x128 ![0, 0] (val_main_v3 (F := F) x0 x8 x9) slices_S64512x128_S1024x128_0_0
abbrev idx_main_v318 (i : S1024x128.Idx) : S64512x128.Idx := fun a => match a with
  | ⟨0, _⟩ => ⟨(i 0).val, by have h0 : (i 0).val < 1024 := (i 0).isLt; show (i 0).val < 64512; omega⟩
  | ⟨1, _⟩ => ⟨(i 1).val, (i 1).isLt⟩
theorem val_main_v318_apply (i : S1024x128.Idx) :
    val_main_v318 (F := F) x0 x8 x9 i = val_main_v3 (F := F) x0 x8 x9 (idx_main_v318 i) := by
  unfold val_main_v318
  generalize val_main_v3 (F := F) x0 x8 x9 = y
  exact extractStridedSlice_apply ![0, 0] y slices_S64512x128_S1024x128_0_0 i (idx_main_v318 i) (fun a => match a with
    | ⟨0, _⟩ => by show (i 0).val = 0 + (i 0).val; omega
    | ⟨1, _⟩ => by show (i 1).val = 0 + (i 1).val; omega)

def val_main_v319 : (⟨S1024x128, .f32⟩ : BufTy).Contents (Elt F) :=
  extractStridedSlice S1024x128 ![0, 0] (val_main_v7 (F := F) x1 x10 x11) slices_S64512x128_S1024x128_0_0
abbrev idx_main_v319 (i : S1024x128.Idx) : S64512x128.Idx := fun a => match a with
  | ⟨0, _⟩ => ⟨(i 0).val, by have h0 : (i 0).val < 1024 := (i 0).isLt; show (i 0).val < 64512; omega⟩
  | ⟨1, _⟩ => ⟨(i 1).val, (i 1).isLt⟩
theorem val_main_v319_apply (i : S1024x128.Idx) :
    val_main_v319 (F := F) x1 x10 x11 i = val_main_v7 (F := F) x1 x10 x11 (idx_main_v319 i) := by
  unfold val_main_v319
  generalize val_main_v7 (F := F) x1 x10 x11 = y
  exact extractStridedSlice_apply ![0, 0] y slices_S64512x128_S1024x128_0_0 i (idx_main_v319 i) (fun a => match a with
    | ⟨0, _⟩ => by show (i 0).val = 0 + (i 0).val; omega
    | ⟨1, _⟩ => by show (i 1).val = 0 + (i 1).val; omega)

def val_main_v320 : (⟨S1024x128, .f32⟩ : BufTy).Contents (Elt F) :=
  extractStridedSlice S1024x128 ![0, 0] (val_main_v19 (F := F) x3 x14 x15) slices_S64512x128_S1024x128_0_0
abbrev idx_main_v320 (i : S1024x128.Idx) : S64512x128.Idx := fun a => match a with
  | ⟨0, _⟩ => ⟨(i 0).val, by have h0 : (i 0).val < 1024 := (i 0).isLt; show (i 0).val < 64512; omega⟩
  | ⟨1, _⟩ => ⟨(i 1).val, (i 1).isLt⟩
theorem val_main_v320_apply (i : S1024x128.Idx) :
    val_main_v320 (F := F) x3 x14 x15 i = val_main_v19 (F := F) x3 x14 x15 (idx_main_v320 i) := by
  unfold val_main_v320
  generalize val_main_v19 (F := F) x3 x14 x15 = y
  exact extractStridedSlice_apply ![0, 0] y slices_S64512x128_S1024x128_0_0 i (idx_main_v320 i) (fun a => match a with
    | ⟨0, _⟩ => by show (i 0).val = 0 + (i 0).val; omega
    | ⟨1, _⟩ => by show (i 1).val = 0 + (i 1).val; omega)

def val_main_v321 : (⟨S1024x128, .f32⟩ : BufTy).Contents (Elt F) :=
  extractStridedSlice S1024x128 ![0, 0] (val_main_v24 (F := F) x4 x14 x15) slices_S64512x128_S1024x128_0_0
abbrev idx_main_v321 (i : S1024x128.Idx) : S64512x128.Idx := fun a => match a with
  | ⟨0, _⟩ => ⟨(i 0).val, by have h0 : (i 0).val < 1024 := (i 0).isLt; show (i 0).val < 64512; omega⟩
  | ⟨1, _⟩ => ⟨(i 1).val, (i 1).isLt⟩
theorem val_main_v321_apply (i : S1024x128.Idx) :
    val_main_v321 (F := F) x4 x14 x15 i = val_main_v24 (F := F) x4 x14 x15 (idx_main_v321 i) := by
  unfold val_main_v321
  generalize val_main_v24 (F := F) x4 x14 x15 = y
  exact extractStridedSlice_apply ![0, 0] y slices_S64512x128_S1024x128_0_0 i (idx_main_v321 i) (fun a => match a with
    | ⟨0, _⟩ => by show (i 0).val = 0 + (i 0).val; omega
    | ⟨1, _⟩ => by show (i 1).val = 0 + (i 1).val; omega)

def val_main_v322 : (⟨S1024x128, .f32⟩ : BufTy).Contents (Elt F) :=
  extractStridedSlice S1024x128 ![0, 0] (val_main_v14 (F := F) x2 x5 x12 x13) slices_S64512x128_S1024x128_0_0
abbrev idx_main_v322 (i : S1024x128.Idx) : S64512x128.Idx := fun a => match a with
  | ⟨0, _⟩ => ⟨(i 0).val, by have h0 : (i 0).val < 1024 := (i 0).isLt; show (i 0).val < 64512; omega⟩
  | ⟨1, _⟩ => ⟨(i 1).val, (i 1).isLt⟩
theorem val_main_v322_apply (i : S1024x128.Idx) :
    val_main_v322 (F := F) x2 x5 x12 x13 i = val_main_v14 (F := F) x2 x5 x12 x13 (idx_main_v322 i) := by
  unfold val_main_v322
  generalize val_main_v14 (F := F) x2 x5 x12 x13 = y
  exact extractStridedSlice_apply ![0, 0] y slices_S64512x128_S1024x128_0_0 i (idx_main_v322 i) (fun a => match a with
    | ⟨0, _⟩ => by show (i 0).val = 0 + (i 0).val; omega
    | ⟨1, _⟩ => by show (i 1).val = 0 + (i 1).val; omega)

def val_main_v323 : (⟨S1024x1408, .f32⟩ : BufTy).Contents (Elt F) :=
  concatenate S1024x1408 1 [⟨S1024x128, (val_main_v318 (F := F) x0 x8 x9)⟩, ⟨S1024x128, (val_main_v319 (F := F) x1 x10 x11)⟩, ⟨S1024x128, (val_main_v320 (F := F) x3 x14 x15)⟩, ⟨S1024x128, (val_main_v321 (F := F) x4 x14 x15)⟩, ⟨S1024x128, (val_main_v322 (F := F) x2 x5 x12 x13)⟩, ⟨S1024x128, (val_main_v292 (F := F) x0 x1 x2 x3 x4 x5 x6 x7 x8 x9 x10 x11 x12 x13 x14 x15 x16 x17 x18 x19 x20 x21)⟩, ⟨S1024x128, (val_main_v307 (F := F) x0 x1 x2 x3 x4 x5 x6 x7 x8 x9 x10 x11 x12 x13 x14 x15 x16 x17 x18 x19 x20 x21)⟩, ⟨S1024x128, (val_main_v297 (F := F) x0 x1 x2 x3 x4 x5 x6 x7 x8 x9 x10 x11 x12 x13 x14 x15 x16 x17 x18 x19 x20 x21)⟩, ⟨S1024x128, (val_main_v302 (F := F) x0 x1 x2 x3 x4 x5 x6 x7 x8 x9 x10 x11 x12 x13 x14 x15 x16 x17 x18 x19 x20 x21)⟩, ⟨S1024x128, (val_main_v312 (F := F) x0 x1 x2 x3 x4 x5 x6 x7 x8 x9 x10 x11 x12 x13 x14 x15 x16 x17 x18 x19 x20 x21)⟩, ⟨S1024x128, (val_main_v317 (F := F) x0 x1 x2 x3 x4 x5 x6 x7 x8 x9 x10 x11 x12 x13 x14 x15 x16 x17 x18 x19 x20 x21)⟩] concatenates_S1024x128_S1024x128_S1024x128_S1024x128_S1024x128_S1024x128_S1024x128_S1024x128_S1024x128_S1024x128_S1024x128_S1024x1408_d1

def val_main_v324 : (⟨S1024x512, .f32⟩ : BufTy).Contents (Elt F) :=
  Host.dotGeneral dot_S1024x1408_S1408x512_S1024x512_1_0_0_1_n_n none (val_main_v323 (F := F) x0 x1 x2 x3 x4 x5 x6 x7 x8 x9 x10 x11 x12 x13 x14 x15 x16 x17 x18 x19 x20 x21) (x16)
theorem lhs_main_v324_0 (i : S1024x512.Idx) (q : dot_S1024x1408_S1408x512_S1024x512_1_0_0_1_n_n.contr.Idx) :
    (dot_S1024x1408_S1408x512_S1024x512_1_0_0_1_n_n.lhsIdx i q 0).val = (i 0).val := by
  unfold DotDims.lhsIdx
  rw [dif_neg (show ¬(0 : Fin S1024x1408.rank) ∈ dot_S1024x1408_S1408x512_S1024x512_1_0_0_1_n_n.lhsBatch by decide), dif_pos (show (0 : Fin S1024x1408.rank) ∈ dot_S1024x1408_S1408x512_S1024x512_1_0_0_1_n_n.lhsNonContracting by decide)]
  rfl
theorem lhs_main_v324_1 (i : S1024x512.Idx) (q : dot_S1024x1408_S1408x512_S1024x512_1_0_0_1_n_n.contr.Idx) :
    (dot_S1024x1408_S1408x512_S1024x512_1_0_0_1_n_n.lhsIdx i q 1).val = (q ⟨0, by decide⟩).val :=
  dot_S1024x1408_S1408x512_S1024x512_1_0_0_1_n_n.lhsIdx_val_of_single rfl i q
theorem rhs_main_v324_0 (i : S1024x512.Idx) (q : dot_S1024x1408_S1408x512_S1024x512_1_0_0_1_n_n.contr.Idx) :
    (dot_S1024x1408_S1408x512_S1024x512_1_0_0_1_n_n.rhsIdx i q 0).val = (q ⟨0, by decide⟩).val :=
  dot_S1024x1408_S1408x512_S1024x512_1_0_0_1_n_n.rhsIdx_val_of_single rfl i q
theorem rhs_main_v324_1 (i : S1024x512.Idx) (q : dot_S1024x1408_S1408x512_S1024x512_1_0_0_1_n_n.contr.Idx) :
    (dot_S1024x1408_S1408x512_S1024x512_1_0_0_1_n_n.rhsIdx i q 1).val = (i 1).val := by
  unfold DotDims.rhsIdx
  rw [dif_neg (show ¬(1 : Fin S1408x512.rank) ∈ dot_S1024x1408_S1408x512_S1024x512_1_0_0_1_n_n.rhsBatch by decide), dif_pos (show (1 : Fin S1408x512.rank) ∈ dot_S1024x1408_S1408x512_S1024x512_1_0_0_1_n_n.rhsNonContracting by decide)]
  rfl
abbrev lidx_main_v324 (i : S1024x512.Idx) (k : Fin 1408) : S1024x1408.Idx := fun a => match a with
  | ⟨0, _⟩ => ⟨(i 0).val, (i 0).isLt⟩
  | ⟨1, _⟩ => ⟨k.val, k.isLt⟩
abbrev ridx_main_v324 (i : S1024x512.Idx) (k : Fin 1408) : S1408x512.Idx := fun a => match a with
  | ⟨0, _⟩ => ⟨k.val, k.isLt⟩
  | ⟨1, _⟩ => ⟨(i 1).val, (i 1).isLt⟩

theorem val_main_v324_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S1024x512.Idx) :
    val_main_v324 (F := Ideal) x0 x1 x2 x3 x4 x5 x6 x7 x8 x9 x10 x11 x12 x13 x14 x15 x16 x17 x18 x19 x20 x21 i = ∑ k : Fin 1408, (val_main_v323 (F := Ideal) x0 x1 x2 x3 x4 x5 x6 x7 x8 x9 x10 x11 x12 x13 x14 x15 x16 x17 x18 x19 x20 x21) (lidx_main_v324 i k) * x16 (ridx_main_v324 i k) := by
  unfold val_main_v324
  generalize val_main_v323 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S1024x1408_S1408x512_S1024x512_1_0_0_1_n_n 1408 rfl rfl).symm]
  refine Finset.sum_congr rfl fun k _ => ?_
  have hk := ValueIdx.contrEquiv1_symm_val dot_S1024x1408_S1408x512_S1024x512_1_0_0_1_n_n 1408 rfl rfl k
  have el : dot_S1024x1408_S1408x512_S1024x512_1_0_0_1_n_n.lhsIdx i ((ValueIdx.contrEquiv1 dot_S1024x1408_S1408x512_S1024x512_1_0_0_1_n_n 1408 rfl rfl).symm k) = lidx_main_v324 i k := funext fun a => Fin.ext (by
    match a with
    | ⟨0, _⟩ => exact lhs_main_v324_0 _ _
    | ⟨1, _⟩ => exact (lhs_main_v324_1 _ _).trans hk)
  have er : dot_S1024x1408_S1408x512_S1024x512_1_0_0_1_n_n.rhsIdx i ((ValueIdx.contrEquiv1 dot_S1024x1408_S1408x512_S1024x512_1_0_0_1_n_n 1408 rfl rfl).symm k) = ridx_main_v324 i k := funext fun a => Fin.ext (by
    match a with
    | ⟨0, _⟩ => exact (rhs_main_v324_0 _ _).trans hk
    | ⟨1, _⟩ => exact rhs_main_v324_1 _ _)
  rw [el, er]

def val_main_v325 : (⟨S1x512, .f32⟩ : BufTy).Contents (Elt F) :=
  broadcastInDim S1x512 ![1] bcast_S512_S1x512_1 (x17)
abbrev idx_main_v325 (i : S1x512.Idx) : S512.Idx := fun a => match a with
  | ⟨0, _⟩ => ⟨(i 1).val, (i 1).isLt⟩
theorem val_main_v325_apply (i : S1x512.Idx) :
    val_main_v325 (F := F) x17 i = x17 (idx_main_v325 i) := by
  unfold val_main_v325
  exact broadcastInDim_apply _ bcast_S512_S1x512_1 x17 i (idx_main_v325 i) (fun a => match a with
    | ⟨0, _⟩ => by show (i 1).val = if (512 : Nat) = 1 then 0 else (i 1).val; rw [if_neg (by decide)])

def val_main_v326 : (⟨S1024x512, .f32⟩ : BufTy).Contents (Elt F) :=
  broadcastInDim S1024x512 ![0, 1] bcast_S1x512_S1024x512_0_1 (val_main_v325 (F := F) x17)
abbrev idx_main_v326 (i : S1024x512.Idx) : S1x512.Idx := fun a => match a with
  | ⟨0, _⟩ => ⟨0, Nat.one_pos⟩
  | ⟨1, _⟩ => ⟨(i 1).val, (i 1).isLt⟩
theorem val_main_v326_apply (i : S1024x512.Idx) :
    val_main_v326 (F := F) x17 i = val_main_v325 (F := F) x17 (idx_main_v326 i) := by
  unfold val_main_v326
  generalize val_main_v325 (F := F) x17 = y
  exact broadcastInDim_apply _ bcast_S1x512_S1024x512_0_1 y i (idx_main_v326 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

def val_main_v327 : (⟨S1024x512, .f32⟩ : BufTy).Contents (Elt F) :=
  addf (val_main_v324 (F := F) x0 x1 x2 x3 x4 x5 x6 x7 x8 x9 x10 x11 x12 x13 x14 x15 x16 x17 x18 x19 x20 x21) (val_main_v326 (F := F) x17)
theorem val_main_v327_apply (i : S1024x512.Idx) :
    val_main_v327 (F := F) x0 x1 x2 x3 x4 x5 x6 x7 x8 x9 x10 x11 x12 x13 x14 x15 x16 x17 x18 x19 x20 x21 i = FloatOps.addf (val_main_v324 (F := F) x0 x1 x2 x3 x4 x5 x6 x7 x8 x9 x10 x11 x12 x13 x14 x15 x16 x17 x18 x19 x20 x21 i) (val_main_v326 (F := F) x17 i) := rfl

def val_main_call15_cst : (⟨S_, .f32⟩ : BufTy).Contents (Elt F) :=
  constant S_ .f32 0x00000000#32
theorem val_main_call15_cst_apply (i : S_.Idx) :
    val_main_call15_cst (F := F) i = FloatOps.ofBits .f32 0x00000000#32 := rfl

def val_main_call15_v0 : (⟨S1024x512, .f32⟩ : BufTy).Contents (Elt F) :=
  broadcastInDim S1024x512 ![] bcast_S_S1024x512 (val_main_call15_cst (F := F))
abbrev idx_main_call15_v0 (i : S1024x512.Idx) : S_.Idx := fun a => a.elim0
theorem val_main_call15_v0_apply (i : S1024x512.Idx) :
    val_main_call15_v0 (F := F) i = val_main_call15_cst (F := F) (idx_main_call15_v0 i) := by
  unfold val_main_call15_v0
  generalize val_main_call15_cst (F := F) = y
  exact broadcastInDim_apply _ bcast_S_S1024x512 y i (idx_main_call15_v0 i) (fun a => a.elim0)

def val_main_v328 : (⟨S1024x512, .f32⟩ : BufTy).Contents (Elt F) :=
  maximumf (val_main_v327 (F := F) x0 x1 x2 x3 x4 x5 x6 x7 x8 x9 x10 x11 x12 x13 x14 x15 x16 x17 x18 x19 x20 x21) (val_main_call15_v0 (F := F))
theorem val_main_v328_apply (i : S1024x512.Idx) :
    val_main_v328 (F := F) x0 x1 x2 x3 x4 x5 x6 x7 x8 x9 x10 x11 x12 x13 x14 x15 x16 x17 x18 x19 x20 x21 i = FloatOps.maximumf (val_main_v327 (F := F) x0 x1 x2 x3 x4 x5 x6 x7 x8 x9 x10 x11 x12 x13 x14 x15 x16 x17 x18 x19 x20 x21 i) (val_main_call15_v0 (F := F) i) := rfl

def val_main_v329 : (⟨S1024x256, .f32⟩ : BufTy).Contents (Elt F) :=
  Host.dotGeneral dot_S1024x512_S512x256_S1024x256_1_0_0_1_n_n none (val_main_v328 (F := F) x0 x1 x2 x3 x4 x5 x6 x7 x8 x9 x10 x11 x12 x13 x14 x15 x16 x17 x18 x19 x20 x21) (x18)
theorem lhs_main_v329_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_main_v329_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_main_v329_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_main_v329_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl
abbrev lidx_main_v329 (i : S1024x256.Idx) (k : Fin 512) : S1024x512.Idx := fun a => match a with
  | ⟨0, _⟩ => ⟨(i 0).val, (i 0).isLt⟩
  | ⟨1, _⟩ => ⟨k.val, k.isLt⟩
abbrev ridx_main_v329 (i : S1024x256.Idx) (k : Fin 512) : S512x256.Idx := fun a => match a with
  | ⟨0, _⟩ => ⟨k.val, k.isLt⟩
  | ⟨1, _⟩ => ⟨(i 1).val, (i 1).isLt⟩

theorem val_main_v329_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S1024x256.Idx) :
    val_main_v329 (F := Ideal) x0 x1 x2 x3 x4 x5 x6 x7 x8 x9 x10 x11 x12 x13 x14 x15 x16 x17 x18 x19 x20 x21 i = ∑ k : Fin 512, (val_main_v328 (F := Ideal) x0 x1 x2 x3 x4 x5 x6 x7 x8 x9 x10 x11 x12 x13 x14 x15 x16 x17 x18 x19 x20 x21) (lidx_main_v329 i k) * x18 (ridx_main_v329 i k) := by
  unfold val_main_v329
  generalize val_main_v328 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S1024x512_S512x256_S1024x256_1_0_0_1_n_n 512 rfl rfl).symm]
  refine Finset.sum_congr rfl fun k _ => ?_
  have hk := ValueIdx.contrEquiv1_symm_val dot_S1024x512_S512x256_S1024x256_1_0_0_1_n_n 512 rfl rfl k
  have el : dot_S1024x512_S512x256_S1024x256_1_0_0_1_n_n.lhsIdx i ((ValueIdx.contrEquiv1 dot_S1024x512_S512x256_S1024x256_1_0_0_1_n_n 512 rfl rfl).symm k) = lidx_main_v329 i k := funext fun a => Fin.ext (by
    match a with
    | ⟨0, _⟩ => exact lhs_main_v329_0 _ _
    | ⟨1, _⟩ => exact (lhs_main_v329_1 _ _).trans hk)
  have er : dot_S1024x512_S512x256_S1024x256_1_0_0_1_n_n.rhsIdx i ((ValueIdx.contrEquiv1 dot_S1024x512_S512x256_S1024x256_1_0_0_1_n_n 512 rfl rfl).symm k) = ridx_main_v329 i k := funext fun a => Fin.ext (by
    match a with
    | ⟨0, _⟩ => exact (rhs_main_v329_0 _ _).trans hk
    | ⟨1, _⟩ => exact rhs_main_v329_1 _ _)
  rw [el, er]

def val_main_v330 : (⟨S1x256, .f32⟩ : BufTy).Contents (Elt F) :=
  broadcastInDim S1x256 ![1] bcast_S256_S1x256_1 (x19)
abbrev idx_main_v330 (i : S1x256.Idx) : S256.Idx := fun a => match a with
  | ⟨0, _⟩ => ⟨(i 1).val, (i 1).isLt⟩
theorem val_main_v330_apply (i : S1x256.Idx) :
    val_main_v330 (F := F) x19 i = x19 (idx_main_v330 i) := by
  unfold val_main_v330
  exact broadcastInDim_apply _ bcast_S256_S1x256_1 x19 i (idx_main_v330 i) (fun a => match a with
    | ⟨0, _⟩ => by show (i 1).val = if (256 : Nat) = 1 then 0 else (i 1).val; rw [if_neg (by decide)])

def val_main_v331 : (⟨S1024x256, .f32⟩ : BufTy).Contents (Elt F) :=
  broadcastInDim S1024x256 ![0, 1] bcast_S1x256_S1024x256_0_1 (val_main_v330 (F := F) x19)
abbrev idx_main_v331 (i : S1024x256.Idx) : S1x256.Idx := fun a => match a with
  | ⟨0, _⟩ => ⟨0, Nat.one_pos⟩
  | ⟨1, _⟩ => ⟨(i 1).val, (i 1).isLt⟩
theorem val_main_v331_apply (i : S1024x256.Idx) :
    val_main_v331 (F := F) x19 i = val_main_v330 (F := F) x19 (idx_main_v331 i) := by
  unfold val_main_v331
  generalize val_main_v330 (F := F) x19 = y
  exact broadcastInDim_apply _ bcast_S1x256_S1024x256_0_1 y i (idx_main_v331 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

def val_main_v332 : (⟨S1024x256, .f32⟩ : BufTy).Contents (Elt F) :=
  addf (val_main_v329 (F := F) x0 x1 x2 x3 x4 x5 x6 x7 x8 x9 x10 x11 x12 x13 x14 x15 x16 x17 x18 x19 x20 x21) (val_main_v331 (F := F) x19)
theorem val_main_v332_apply (i : S1024x256.Idx) :
    val_main_v332 (F := F) x0 x1 x2 x3 x4 x5 x6 x7 x8 x9 x10 x11 x12 x13 x14 x15 x16 x17 x18 x19 x20 x21 i = FloatOps.addf (val_main_v329 (F := F) x0 x1 x2 x3 x4 x5 x6 x7 x8 x9 x10 x11 x12 x13 x14 x15 x16 x17 x18 x19 x20 x21 i) (val_main_v331 (F := F) x19 i) := rfl

def val_main_call16_cst : (⟨S_, .f32⟩ : BufTy).Contents (Elt F) :=
  constant S_ .f32 0x00000000#32
theorem val_main_call16_cst_apply (i : S_.Idx) :
    val_main_call16_cst (F := F) i = FloatOps.ofBits .f32 0x00000000#32 := rfl

def val_main_call16_v0 : (⟨S1024x256, .f32⟩ : BufTy).Contents (Elt F) :=
  broadcastInDim S1024x256 ![] bcast_S_S1024x256 (val_main_call16_cst (F := F))
abbrev idx_main_call16_v0 (i : S1024x256.Idx) : S_.Idx := fun a => a.elim0
theorem val_main_call16_v0_apply (i : S1024x256.Idx) :
    val_main_call16_v0 (F := F) i = val_main_call16_cst (F := F) (idx_main_call16_v0 i) := by
  unfold val_main_call16_v0
  generalize val_main_call16_cst (F := F) = y
  exact broadcastInDim_apply _ bcast_S_S1024x256 y i (idx_main_call16_v0 i) (fun a => a.elim0)

def val_main_v333 : (⟨S1024x256, .f32⟩ : BufTy).Contents (Elt F) :=
  maximumf (val_main_v332 (F := F) x0 x1 x2 x3 x4 x5 x6 x7 x8 x9 x10 x11 x12 x13 x14 x15 x16 x17 x18 x19 x20 x21) (val_main_call16_v0 (F := F))
theorem val_main_v333_apply (i : S1024x256.Idx) :
    val_main_v333 (F := F) x0 x1 x2 x3 x4 x5 x6 x7 x8 x9 x10 x11 x12 x13 x14 x15 x16 x17 x18 x19 x20 x21 i = FloatOps.maximumf (val_main_v332 (F := F) x0 x1 x2 x3 x4 x5 x6 x7 x8 x9 x10 x11 x12 x13 x14 x15 x16 x17 x18 x19 x20 x21 i) (val_main_call16_v0 (F := F) i) := rfl

def val_main_v334 : (⟨S1024x128, .f32⟩ : BufTy).Contents (Elt F) :=
  Host.dotGeneral dot_S1024x256_S256x128_S1024x128_1_0_0_1_n_n none (val_main_v333 (F := F) x0 x1 x2 x3 x4 x5 x6 x7 x8 x9 x10 x11 x12 x13 x14 x15 x16 x17 x18 x19 x20 x21) (x20)
theorem lhs_main_v334_0 (i : S1024x128.Idx) (q : dot_S1024x256_S256x128_S1024x128_1_0_0_1_n_n.contr.Idx) :
    (dot_S1024x256_S256x128_S1024x128_1_0_0_1_n_n.lhsIdx i q 0).val = (i 0).val := by
  unfold DotDims.lhsIdx
  rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
  rfl
theorem lhs_main_v334_1 (i : S1024x128.Idx) (q : dot_S1024x256_S256x128_S1024x128_1_0_0_1_n_n.contr.Idx) :
    (dot_S1024x256_S256x128_S1024x128_1_0_0_1_n_n.lhsIdx i q 1).val = (q ⟨0, by decide⟩).val :=
  dot_S1024x256_S256x128_S1024x128_1_0_0_1_n_n.lhsIdx_val_of_single rfl i q
theorem rhs_main_v334_0 (i : S1024x128.Idx) (q : dot_S1024x256_S256x128_S1024x128_1_0_0_1_n_n.contr.Idx) :
    (dot_S1024x256_S256x128_S1024x128_1_0_0_1_n_n.rhsIdx i q 0).val = (q ⟨0, by decide⟩).val :=
  dot_S1024x256_S256x128_S1024x128_1_0_0_1_n_n.rhsIdx_val_of_single rfl i q
theorem rhs_main_v334_1 (i : S1024x128.Idx) (q : dot_S1024x256_S256x128_S1024x128_1_0_0_1_n_n.contr.Idx) :
    (dot_S1024x256_S256x128_S1024x128_1_0_0_1_n_n.rhsIdx i q 1).val = (i 1).val := by
  unfold DotDims.rhsIdx
  rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
  rfl
abbrev lidx_main_v334 (i : S1024x128.Idx) (k : Fin 256) : S1024x256.Idx := fun a => match a with
  | ⟨0, _⟩ => ⟨(i 0).val, (i 0).isLt⟩
  | ⟨1, _⟩ => ⟨k.val, k.isLt⟩
abbrev ridx_main_v334 (i : S1024x128.Idx) (k : Fin 256) : S256x128.Idx := fun a => match a with
  | ⟨0, _⟩ => ⟨k.val, k.isLt⟩
  | ⟨1, _⟩ => ⟨(i 1).val, (i 1).isLt⟩

theorem val_main_v334_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (i : S1024x128.Idx) :
    val_main_v334 (F := Ideal) x0 x1 x2 x3 x4 x5 x6 x7 x8 x9 x10 x11 x12 x13 x14 x15 x16 x17 x18 x19 x20 x21 i = ∑ k : Fin 256, (val_main_v333 (F := Ideal) x0 x1 x2 x3 x4 x5 x6 x7 x8 x9 x10 x11 x12 x13 x14 x15 x16 x17 x18 x19 x20 x21) (lidx_main_v334 i k) * x20 (ridx_main_v334 i k) := by
  unfold val_main_v334
  generalize val_main_v333 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S1024x256_S256x128_S1024x128_1_0_0_1_n_n 256 rfl rfl).symm]
  refine Finset.sum_congr rfl fun k _ => ?_
  have hk := ValueIdx.contrEquiv1_symm_val dot_S1024x256_S256x128_S1024x128_1_0_0_1_n_n 256 rfl rfl k
  have el : dot_S1024x256_S256x128_S1024x128_1_0_0_1_n_n.lhsIdx i ((ValueIdx.contrEquiv1 dot_S1024x256_S256x128_S1024x128_1_0_0_1_n_n 256 rfl rfl).symm k) = lidx_main_v334 i k := funext fun a => Fin.ext (by
    match a with
    | ⟨0, _⟩ => exact lhs_main_v334_0 _ _
    | ⟨1, _⟩ => exact (lhs_main_v334_1 _ _).trans hk)
  have er : dot_S1024x256_S256x128_S1024x128_1_0_0_1_n_n.rhsIdx i ((ValueIdx.contrEquiv1 dot_S1024x256_S256x128_S1024x128_1_0_0_1_n_n 256 rfl rfl).symm k) = ridx_main_v334 i k := funext fun a => Fin.ext (by
    match a with
    | ⟨0, _⟩ => exact (rhs_main_v334_0 _ _).trans hk
    | ⟨1, _⟩ => exact rhs_main_v334_1 _ _)
  rw [el, er]

def val_main_v335 : (⟨S1x128, .f32⟩ : BufTy).Contents (Elt F) :=
  broadcastInDim S1x128 ![1] bcast_S128_S1x128_1 (x21)
abbrev idx_main_v335 (i : S1x128.Idx) : S128.Idx := fun a => match a with
  | ⟨0, _⟩ => ⟨(i 1).val, (i 1).isLt⟩
theorem val_main_v335_apply (i : S1x128.Idx) :
    val_main_v335 (F := F) x21 i = x21 (idx_main_v335 i) := by
  unfold val_main_v335
  exact broadcastInDim_apply _ bcast_S128_S1x128_1 x21 i (idx_main_v335 i) (fun a => match a with
    | ⟨0, _⟩ => by show (i 1).val = if (128 : Nat) = 1 then 0 else (i 1).val; rw [if_neg (by decide)])

def val_main_v336 : (⟨S1024x128, .f32⟩ : BufTy).Contents (Elt F) :=
  broadcastInDim S1024x128 ![0, 1] bcast_S1x128_S1024x128_0_1 (val_main_v335 (F := F) x21)
abbrev idx_main_v336 (i : S1024x128.Idx) : S1x128.Idx := fun a => match a with
  | ⟨0, _⟩ => ⟨0, Nat.one_pos⟩
  | ⟨1, _⟩ => ⟨(i 1).val, (i 1).isLt⟩
theorem val_main_v336_apply (i : S1024x128.Idx) :
    val_main_v336 (F := F) x21 i = val_main_v335 (F := F) x21 (idx_main_v336 i) := by
  unfold val_main_v336
  generalize val_main_v335 (F := F) x21 = y
  exact broadcastInDim_apply _ bcast_S1x128_S1024x128_0_1 y i (idx_main_v336 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v337 : (⟨S1024x128, .f32⟩ : BufTy).Contents (Elt F) :=
  addf (val_main_v334 (F := F) x0 x1 x2 x3 x4 x5 x6 x7 x8 x9 x10 x11 x12 x13 x14 x15 x16 x17 x18 x19 x20 x21) (val_main_v336 (F := F) x21)
theorem val_main_v337_apply (i : S1024x128.Idx) :
    val_main_v337 (F := F) x0 x1 x2 x3 x4 x5 x6 x7 x8 x9 x10 x11 x12 x13 x14 x15 x16 x17 x18 x19 x20 x21 i = FloatOps.addf (val_main_v334 (F := F) x0 x1 x2 x3 x4 x5 x6 x7 x8 x9 x10 x11 x12 x13 x14 x15 x16 x17 x18 x19 x20 x21 i) (val_main_v336 (F := F) x21 i) := rfl

def val_main_call17_cst : (⟨S_, .f32⟩ : BufTy).Contents (Elt F) :=
  constant S_ .f32 0x00000000#32
theorem val_main_call17_cst_apply (i : S_.Idx) :
    val_main_call17_cst (F := F) i = FloatOps.ofBits .f32 0x00000000#32 := rfl

def val_main_call17_v0 : (⟨S1024x128, .f32⟩ : BufTy).Contents (Elt F) :=
  broadcastInDim S1024x128 ![] bcast_S_S1024x128 (val_main_call17_cst (F := F))
abbrev idx_main_call17_v0 (i : S1024x128.Idx) : S_.Idx := fun a => a.elim0
theorem val_main_call17_v0_apply (i : S1024x128.Idx) :
    val_main_call17_v0 (F := F) i = val_main_call17_cst (F := F) (idx_main_call17_v0 i) := by
  unfold val_main_call17_v0
  generalize val_main_call17_cst (F := F) = y
  exact broadcastInDim_apply _ bcast_S_S1024x128 y i (idx_main_call17_v0 i) (fun a => a.elim0)

def val_main_v338 : (⟨S1024x128, .f32⟩ : BufTy).Contents (Elt F) :=
  maximumf (val_main_v337 (F := F) x0 x1 x2 x3 x4 x5 x6 x7 x8 x9 x10 x11 x12 x13 x14 x15 x16 x17 x18 x19 x20 x21) (val_main_call17_v0 (F := F))
theorem val_main_v338_apply (i : S1024x128.Idx) :
    val_main_v338 (F := F) x0 x1 x2 x3 x4 x5 x6 x7 x8 x9 x10 x11 x12 x13 x14 x15 x16 x17 x18 x19 x20 x21 i = FloatOps.maximumf (val_main_v337 (F := F) x0 x1 x2 x3 x4 x5 x6 x7 x8 x9 x10 x11 x12 x13 x14 x15 x16 x17 x18 x19 x20 x21 i) (val_main_call17_v0 (F := F) i) := rfl

def val_main_v339 : (⟨S1024x128, .f32⟩ : BufTy).Contents (Elt F) :=
  Host.dotGeneral dot_S1024x128_S128x128_S1024x128_1_0_0_1_n_n none (val_main_v338 (F := F) x0 x1 x2 x3 x4 x5 x6 x7 x8 x9 x10 x11 x12 x13 x14 x15 x16 x17 x18 x19 x20 x21) (x22)
theorem lhs_main_v339_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_main_v339_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_main_v339_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_main_v339_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
abbrev lidx_main_v339 (i : S1024x128.Idx) (k : Fin 128) : S1024x128.Idx := fun a => match a with
  | ⟨0, _⟩ => ⟨(i 0).val, (i 0).isLt⟩
  | ⟨1, _⟩ => ⟨k.val, k.isLt⟩
abbrev ridx_main_v339 (i : S1024x128.Idx) (k : Fin 128) : S128x128.Idx := fun a => match a with
  | ⟨0, _⟩ => ⟨k.val, k.isLt⟩
  | ⟨1, _⟩ => ⟨(i 1).val, (i 1).isLt⟩

theorem val_main_v339_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (x22 : (⟨S128x128, .f32⟩ : BufTy).Contents (Elt Ideal)) (i : S1024x128.Idx) :
    val_main_v339 (F := Ideal) x0 x1 x2 x3 x4 x5 x6 x7 x8 x9 x10 x11 x12 x13 x14 x15 x16 x17 x18 x19 x20 x21 x22 i = ∑ k : Fin 128, (val_main_v338 (F := Ideal) x0 x1 x2 x3 x4 x5 x6 x7 x8 x9 x10 x11 x12 x13 x14 x15 x16 x17 x18 x19 x20 x21) (lidx_main_v339 i k) * x22 (ridx_main_v339 i k) := by
  unfold val_main_v339
  generalize val_main_v338 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx i ((ValueIdx.contrEquiv1 dot_S1024x128_S128x128_S1024x128_1_0_0_1_n_n 128 rfl rfl).symm k) = lidx_main_v339 i k := funext fun a => Fin.ext (by
    match a with
    | ⟨0, _⟩ => exact lhs_main_v339_0 _ _
    | ⟨1, _⟩ => exact (lhs_main_v339_1 _ _).trans hk)
  have er : dot_S1024x128_S128x128_S1024x128_1_0_0_1_n_n.rhsIdx i ((ValueIdx.contrEquiv1 dot_S1024x128_S128x128_S1024x128_1_0_0_1_n_n 128 rfl rfl).symm k) = ridx_main_v339 i k := funext fun a => Fin.ext (by
    match a with
    | ⟨0, _⟩ => exact (rhs_main_v339_0 _ _).trans hk
    | ⟨1, _⟩ => exact rhs_main_v339_1 _ _)
  rw [el, er]

def val_main_v340 : (⟨S1x128, .f32⟩ : BufTy).Contents (Elt F) :=
  broadcastInDim S1x128 ![1] bcast_S128_S1x128_1 (x23)
abbrev idx_main_v340 (i : S1x128.Idx) : S128.Idx := fun a => match a with
  | ⟨0, _⟩ => ⟨(i 1).val, (i 1).isLt⟩
theorem val_main_v340_apply (i : S1x128.Idx) :
    val_main_v340 (F := F) x23 i = x23 (idx_main_v340 i) := by
  unfold val_main_v340
  exact broadcastInDim_apply _ bcast_S128_S1x128_1 x23 i (idx_main_v340 i) (fun a => match a with
    | ⟨0, _⟩ => by show (i 1).val = if (128 : Nat) = 1 then 0 else (i 1).val; rw [if_neg (by decide)])

def val_main_v341 : (⟨S1024x128, .f32⟩ : BufTy).Contents (Elt F) :=
  broadcastInDim S1024x128 ![0, 1] bcast_S1x128_S1024x128_0_1 (val_main_v340 (F := F) x23)
abbrev idx_main_v341 (i : S1024x128.Idx) : S1x128.Idx := fun a => match a with
  | ⟨0, _⟩ => ⟨0, Nat.one_pos⟩
  | ⟨1, _⟩ => ⟨(i 1).val, (i 1).isLt⟩
theorem val_main_v341_apply (i : S1024x128.Idx) :
    val_main_v341 (F := F) x23 i = val_main_v340 (F := F) x23 (idx_main_v341 i) := by
  unfold val_main_v341
  generalize val_main_v340 (F := F) x23 = y
  exact broadcastInDim_apply _ bcast_S1x128_S1024x128_0_1 y i (idx_main_v341 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v342 : (⟨S1024x128, .f32⟩ : BufTy).Contents (Elt F) :=
  addf (val_main_v339 (F := F) x0 x1 x2 x3 x4 x5 x6 x7 x8 x9 x10 x11 x12 x13 x14 x15 x16 x17 x18 x19 x20 x21 x22) (val_main_v341 (F := F) x23)
theorem val_main_v342_apply (i : S1024x128.Idx) :
    val_main_v342 (F := F) x0 x1 x2 x3 x4 x5 x6 x7 x8 x9 x10 x11 x12 x13 x14 x15 x16 x17 x18 x19 x20 x21 x22 x23 i = FloatOps.addf (val_main_v339 (F := F) x0 x1 x2 x3 x4 x5 x6 x7 x8 x9 x10 x11 x12 x13 x14 x15 x16 x17 x18 x19 x20 x21 x22 i) (val_main_v341 (F := F) x23 i) := rfl

def val_main_call18_cst : (⟨S_, .f32⟩ : BufTy).Contents (Elt F) :=
  constant S_ .f32 0x00000000#32
theorem val_main_call18_cst_apply (i : S_.Idx) :
    val_main_call18_cst (F := F) i = FloatOps.ofBits .f32 0x00000000#32 := rfl

def val_main_call18_v0 : (⟨S1024x128, .f32⟩ : BufTy).Contents (Elt F) :=
  broadcastInDim S1024x128 ![] bcast_S_S1024x128 (val_main_call18_cst (F := F))
abbrev idx_main_call18_v0 (i : S1024x128.Idx) : S_.Idx := fun a => a.elim0
theorem val_main_call18_v0_apply (i : S1024x128.Idx) :
    val_main_call18_v0 (F := F) i = val_main_call18_cst (F := F) (idx_main_call18_v0 i) := by
  unfold val_main_call18_v0
  generalize val_main_call18_cst (F := F) = y
  exact broadcastInDim_apply _ bcast_S_S1024x128 y i (idx_main_call18_v0 i) (fun a => a.elim0)

def val_main_v343 : (⟨S1024x128, .f32⟩ : BufTy).Contents (Elt F) :=
  maximumf (val_main_v342 (F := F) x0 x1 x2 x3 x4 x5 x6 x7 x8 x9 x10 x11 x12 x13 x14 x15 x16 x17 x18 x19 x20 x21 x22 x23) (val_main_call18_v0 (F := F))
theorem val_main_v343_apply (i : S1024x128.Idx) :
    val_main_v343 (F := F) x0 x1 x2 x3 x4 x5 x6 x7 x8 x9 x10 x11 x12 x13 x14 x15 x16 x17 x18 x19 x20 x21 x22 x23 i = FloatOps.maximumf (val_main_v342 (F := F) x0 x1 x2 x3 x4 x5 x6 x7 x8 x9 x10 x11 x12 x13 x14 x15 x16 x17 x18 x19 x20 x21 x22 x23 i) (val_main_call18_v0 (F := F) i) := rfl

def val_main_v344 : (⟨S1024x128, .f32⟩ : BufTy).Contents (Elt F) :=
  Host.dotGeneral dot_S1024x128_S128x128_S1024x128_1_0_0_1_n_n none (val_main_v343 (F := F) x0 x1 x2 x3 x4 x5 x6 x7 x8 x9 x10 x11 x12 x13 x14 x15 x16 x17 x18 x19 x20 x21 x22 x23) (x24)
theorem lhs_main_v344_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_main_v344_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_main_v344_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_main_v344_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
abbrev lidx_main_v344 (i : S1024x128.Idx) (k : Fin 128) : S1024x128.Idx := fun a => match a with
  | ⟨0, _⟩ => ⟨(i 0).val, (i 0).isLt⟩
  | ⟨1, _⟩ => ⟨k.val, k.isLt⟩
abbrev ridx_main_v344 (i : S1024x128.Idx) (k : Fin 128) : S128x128.Idx := fun a => match a with
  | ⟨0, _⟩ => ⟨k.val, k.isLt⟩
  | ⟨1, _⟩ => ⟨(i 1).val, (i 1).isLt⟩

theorem val_main_v344_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (i : S1024x128.Idx) :
    val_main_v344 (F := Ideal) x0 x1 x2 x3 x4 x5 x6 x7 x8 x9 x10 x11 x12 x13 x14 x15 x16 x17 x18 x19 x20 x21 x22 x23 x24 i = ∑ k : Fin 128, (val_main_v343 (F := Ideal) x0 x1 x2 x3 x4 x5 x6 x7 x8 x9 x10 x11 x12 x13 x14 x15 x16 x17 x18 x19 x20 x21 x22 x23) (lidx_main_v344 i k) * x24 (ridx_main_v344 i k) := by
  unfold val_main_v344
  generalize val_main_v343 (F := Ideal) x0 x1 x2 x3 x4 x5 x6 x7 x8 x9 x10 x11 x12 x13 x14 x15 x16 x17 x18 x19 x20 x21 x22 x23 = y0
  simp only [Host.dotGeneral]
  rw [Ideal.dotGeneral_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx i ((ValueIdx.contrEquiv1 dot_S1024x128_S128x128_S1024x128_1_0_0_1_n_n 128 rfl rfl).symm k) = lidx_main_v344 i k := funext fun a => Fin.ext (by
    match a with
    | ⟨0, _⟩ => exact lhs_main_v344_0 _ _
    | ⟨1, _⟩ => exact (lhs_main_v344_1 _ _).trans hk)
  have er : dot_S1024x128_S128x128_S1024x128_1_0_0_1_n_n.rhsIdx i ((ValueIdx.contrEquiv1 dot_S1024x128_S128x128_S1024x128_1_0_0_1_n_n 128 rfl rfl).symm k) = ridx_main_v344 i k := funext fun a => Fin.ext (by
    match a with
    | ⟨0, _⟩ => exact (rhs_main_v344_0 _ _).trans hk
    | ⟨1, _⟩ => exact rhs_main_v344_1 _ _)
  rw [el, er]

def val_main_v345 : (⟨S1x128, .f32⟩ : BufTy).Contents (Elt F) :=
  broadcastInDim S1x128 ![1] bcast_S128_S1x128_1 (x25)
abbrev idx_main_v345 (i : S1x128.Idx) : S128.Idx := fun a => match a with
  | ⟨0, _⟩ => ⟨(i 1).val, (i 1).isLt⟩
theorem val_main_v345_apply (i : S1x128.Idx) :
    val_main_v345 (F := F) x25 i = x25 (idx_main_v345 i) := by
  unfold val_main_v345
  exact broadcastInDim_apply _ bcast_S128_S1x128_1 x25 i (idx_main_v345 i) (fun a => match a with
    | ⟨0, _⟩ => by show (i 1).val = if (128 : Nat) = 1 then 0 else (i 1).val; rw [if_neg (by decide)])

def val_main_v346 : (⟨S1024x128, .f32⟩ : BufTy).Contents (Elt F) :=
  broadcastInDim S1024x128 ![0, 1] bcast_S1x128_S1024x128_0_1 (val_main_v345 (F := F) x25)
abbrev idx_main_v346 (i : S1024x128.Idx) : S1x128.Idx := fun a => match a with
  | ⟨0, _⟩ => ⟨0, Nat.one_pos⟩
  | ⟨1, _⟩ => ⟨(i 1).val, (i 1).isLt⟩
theorem val_main_v346_apply (i : S1024x128.Idx) :
    val_main_v346 (F := F) x25 i = val_main_v345 (F := F) x25 (idx_main_v346 i) := by
  unfold val_main_v346
  generalize val_main_v345 (F := F) x25 = y
  exact broadcastInDim_apply _ bcast_S1x128_S1024x128_0_1 y i (idx_main_v346 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v347 : (⟨S1024x128, .f32⟩ : BufTy).Contents (Elt F) :=
  addf (val_main_v344 (F := F) x0 x1 x2 x3 x4 x5 x6 x7 x8 x9 x10 x11 x12 x13 x14 x15 x16 x17 x18 x19 x20 x21 x22 x23 x24) (val_main_v346 (F := F) x25)
theorem val_main_v347_apply (i : S1024x128.Idx) :
    val_main_v347 (F := F) x0 x1 x2 x3 x4 x5 x6 x7 x8 x9 x10 x11 x12 x13 x14 x15 x16 x17 x18 x19 x20 x21 x22 x23 x24 x25 i = FloatOps.addf (val_main_v344 (F := F) x0 x1 x2 x3 x4 x5 x6 x7 x8 x9 x10 x11 x12 x13 x14 x15 x16 x17 x18 x19 x20 x21 x22 x23 x24 i) (val_main_v346 (F := F) x25 i) := rfl

def val_main_call19_cst : (⟨S_, .f32⟩ : BufTy).Contents (Elt F) :=
  constant S_ .f32 0x00000000#32
theorem val_main_call19_cst_apply (i : S_.Idx) :
    val_main_call19_cst (F := F) i = FloatOps.ofBits .f32 0x00000000#32 := rfl

def val_main_call19_v0 : (⟨S1024x128, .f32⟩ : BufTy).Contents (Elt F) :=
  broadcastInDim S1024x128 ![] bcast_S_S1024x128 (val_main_call19_cst (F := F))
abbrev idx_main_call19_v0 (i : S1024x128.Idx) : S_.Idx := fun a => a.elim0
theorem val_main_call19_v0_apply (i : S1024x128.Idx) :
    val_main_call19_v0 (F := F) i = val_main_call19_cst (F := F) (idx_main_call19_v0 i) := by
  unfold val_main_call19_v0
  generalize val_main_call19_cst (F := F) = y
  exact broadcastInDim_apply _ bcast_S_S1024x128 y i (idx_main_call19_v0 i) (fun a => a.elim0)

def val_main_v348 : (⟨S1024x128, .f32⟩ : BufTy).Contents (Elt F) :=
  maximumf (val_main_v347 (F := F) x0 x1 x2 x3 x4 x5 x6 x7 x8 x9 x10 x11 x12 x13 x14 x15 x16 x17 x18 x19 x20 x21 x22 x23 x24 x25) (val_main_call19_v0 (F := F))
theorem val_main_v348_apply (i : S1024x128.Idx) :
    val_main_v348 (F := F) x0 x1 x2 x3 x4 x5 x6 x7 x8 x9 x10 x11 x12 x13 x14 x15 x16 x17 x18 x19 x20 x21 x22 x23 x24 x25 i = FloatOps.maximumf (val_main_v347 (F := F) x0 x1 x2 x3 x4 x5 x6 x7 x8 x9 x10 x11 x12 x13 x14 x15 x16 x17 x18 x19 x20 x21 x22 x23 x24 x25 i) (val_main_call19_v0 (F := F) i) := rfl

def val_main_v349 : (⟨S1024x1, .f32⟩ : BufTy).Contents (Elt F) :=
  Host.dotGeneral dot_S1024x128_S128x1_S1024x1_1_0_0_1_n_n none (val_main_v348 (F := F) x0 x1 x2 x3 x4 x5 x6 x7 x8 x9 x10 x11 x12 x13 x14 x15 x16 x17 x18 x19 x20 x21 x22 x23 x24 x25) (x26)
theorem lhs_main_v349_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide), dif_pos (show (0 : Fin S1024x128.rank) ∈ dot_S1024x128_S128x1_S1024x1_1_0_0_1_n_n.lhsNonContracting by decide)]
  rfl
theorem lhs_main_v349_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
theorem rhs_main_v349_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
theorem rhs_main_v349_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide), dif_pos (show (1 : Fin S128x1.rank) ∈ dot_S1024x128_S128x1_S1024x1_1_0_0_1_n_n.rhsNonContracting by decide)]
  rfl
abbrev lidx_main_v349 (i : S1024x1.Idx) (k : Fin 128) : S1024x128.Idx := fun a => match a with
  | ⟨0, _⟩ => ⟨(i 0).val, (i 0).isLt⟩
  | ⟨1, _⟩ => ⟨k.val, k.isLt⟩
abbrev ridx_main_v349 (i : S1024x1.Idx) (k : Fin 128) : S128x1.Idx := fun a => match a with
  | ⟨0, _⟩ => ⟨k.val, k.isLt⟩
  | ⟨1, _⟩ => ⟨(i 1).val, (i 1).isLt⟩

theorem val_main_v349_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x1, .f32⟩ : BufTy).Contents (Elt Ideal)) (i : S1024x1.Idx) :
    val_main_v349 (F := Ideal) x0 x1 x2 x3 x4 x5 x6 x7 x8 x9 x10 x11 x12 x13 x14 x15 x16 x17 x18 x19 x20 x21 x22 x23 x24 x25 x26 i = ∑ k : Fin 128, (val_main_v348 (F := Ideal) x0 x1 x2 x3 x4 x5 x6 x7 x8 x9 x10 x11 x12 x13 x14 x15 x16 x17 x18 x19 x20 x21 x22 x23 x24 x25) (lidx_main_v349 i k) * x26 (ridx_main_v349 i k) := by
  unfold val_main_v349
  generalize val_main_v348 (F := Ideal) x0 x1 x2 x3 x4 x5 x6 x7 x8 x9 x10 x11 x12 x13 x14 x15 x16 x17 x18 x19 x20 x21 x22 x23 x24 x25 = y0
  simp only [Host.dotGeneral]
  rw [Ideal.dotGeneral_apply, ← Equiv.sum_comp (ValueIdx.contrEquiv1 dot_S1024x128_S128x1_S1024x1_1_0_0_1_n_n 128 rfl rfl).symm]
  refine Finset.sum_congr rfl fun k _ => ?_
  have hk := ValueIdx.contrEquiv1_symm_val dot_S1024x128_S128x1_S1024x1_1_0_0_1_n_n 128 rfl rfl k
  have el : dot_S1024x128_S128x1_S1024x1_1_0_0_1_n_n.lhsIdx i ((ValueIdx.contrEquiv1 dot_S1024x128_S128x1_S1024x1_1_0_0_1_n_n 128 rfl rfl).symm k) = lidx_main_v349 i k := funext fun a => Fin.ext (by
    match a with
    | ⟨0, _⟩ => exact lhs_main_v349_0 _ _
    | ⟨1, _⟩ => exact (lhs_main_v349_1 _ _).trans hk)
  have er : dot_S1024x128_S128x1_S1024x1_1_0_0_1_n_n.rhsIdx i ((ValueIdx.contrEquiv1 dot_S1024x128_S128x1_S1024x1_1_0_0_1_n_n 128 rfl rfl).symm k) = ridx_main_v349 i k := funext fun a => Fin.ext (by
    match a with
    | ⟨0, _⟩ => exact (rhs_main_v349_0 _ _).trans hk
    | ⟨1, _⟩ => exact rhs_main_v349_1 _ _)
  rw [el, er]

def val_main_v350 : (⟨S1x1, .f32⟩ : BufTy).Contents (Elt F) :=
  broadcastInDim S1x1 ![1] bcast_S1_S1x1_1 (x27)
abbrev idx_main_v350 (i : S1x1.Idx) : S1.Idx := fun a => match a with
  | ⟨0, _⟩ => ⟨0, Nat.one_pos⟩
theorem val_main_v350_apply (i : S1x1.Idx) :
    val_main_v350 (F := F) x27 i = x27 (idx_main_v350 i) := by
  unfold val_main_v350
  exact broadcastInDim_apply _ bcast_S1_S1x1_1 x27 i (idx_main_v350 i) (fun a => match a with
    | ⟨0, _⟩ => by show 0 = if (1 : Nat) = 1 then 0 else (i 1).val; rw [if_pos rfl])

def val_main_v351 : (⟨S1024x1, .f32⟩ : BufTy).Contents (Elt F) :=
  broadcastInDim S1024x1 ![0, 1] bcast_S1x1_S1024x1_0_1 (val_main_v350 (F := F) x27)
abbrev idx_main_v351 (i : S1024x1.Idx) : S1x1.Idx := fun a => match a with
  | ⟨0, _⟩ => ⟨0, Nat.one_pos⟩
  | ⟨1, _⟩ => ⟨0, Nat.one_pos⟩
theorem val_main_v351_apply (i : S1024x1.Idx) :
    val_main_v351 (F := F) x27 i = val_main_v350 (F := F) x27 (idx_main_v351 i) := by
  unfold val_main_v351
  generalize val_main_v350 (F := F) x27 = y
  exact broadcastInDim_apply _ bcast_S1x1_S1024x1_0_1 y i (idx_main_v351 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v352 : (⟨S1024x1, .f32⟩ : BufTy).Contents (Elt F) :=
  addf (val_main_v349 (F := F) x0 x1 x2 x3 x4 x5 x6 x7 x8 x9 x10 x11 x12 x13 x14 x15 x16 x17 x18 x19 x20 x21 x22 x23 x24 x25 x26) (val_main_v351 (F := F) x27)
theorem val_main_v352_apply (i : S1024x1.Idx) :
    val_main_v352 (F := F) x0 x1 x2 x3 x4 x5 x6 x7 x8 x9 x10 x11 x12 x13 x14 x15 x16 x17 x18 x19 x20 x21 x22 x23 x24 x25 x26 x27 i = FloatOps.addf (val_main_v349 (F := F) x0 x1 x2 x3 x4 x5 x6 x7 x8 x9 x10 x11 x12 x13 x14 x15 x16 x17 x18 x19 x20 x21 x22 x23 x24 x25 x26 i) (val_main_v351 (F := F) x27 i) := rfl

def val_main_v353 : (⟨S1024x1, .f32⟩ : BufTy).Contents (Elt F) :=
  Host.negf (val_main_v352 (F := F) x0 x1 x2 x3 x4 x5 x6 x7 x8 x9 x10 x11 x12 x13 x14 x15 x16 x17 x18 x19 x20 x21 x22 x23 x24 x25 x26 x27)
theorem val_main_v353_apply (i : S1024x1.Idx) :
    val_main_v353 (F := F) x0 x1 x2 x3 x4 x5 x6 x7 x8 x9 x10 x11 x12 x13 x14 x15 x16 x17 x18 x19 x20 x21 x22 x23 x24 x25 x26 x27 i = FloatOps.hostNegf (val_main_v352 (F := F) x0 x1 x2 x3 x4 x5 x6 x7 x8 x9 x10 x11 x12 x13 x14 x15 x16 x17 x18 x19 x20 x21 x22 x23 x24 x25 x26 x27 i) := rfl

def val_main_v354 : (⟨S1024x1, .f32⟩ : BufTy).Contents (Elt F) :=
  Host.exp (val_main_v353 (F := F) x0 x1 x2 x3 x4 x5 x6 x7 x8 x9 x10 x11 x12 x13 x14 x15 x16 x17 x18 x19 x20 x21 x22 x23 x24 x25 x26 x27)
theorem val_main_v354_apply (i : S1024x1.Idx) :
    val_main_v354 (F := F) x0 x1 x2 x3 x4 x5 x6 x7 x8 x9 x10 x11 x12 x13 x14 x15 x16 x17 x18 x19 x20 x21 x22 x23 x24 x25 x26 x27 i = FloatOps.hostUnary .exp (val_main_v353 (F := F) x0 x1 x2 x3 x4 x5 x6 x7 x8 x9 x10 x11 x12 x13 x14 x15 x16 x17 x18 x19 x20 x21 x22 x23 x24 x25 x26 x27 i) := rfl

def val_main_cst_2 : (⟨S_, .f32⟩ : BufTy).Contents (Elt F) :=
  constant S_ .f32 0x3F800000#32
theorem val_main_cst_2_apply (i : S_.Idx) :
    val_main_cst_2 (F := F) i = FloatOps.ofBits .f32 0x3F800000#32 := rfl

def val_main_v355 : (⟨S1024x1, .f32⟩ : BufTy).Contents (Elt F) :=
  broadcastInDim S1024x1 ![] bcast_S_S1024x1 (val_main_cst_2 (F := F))
abbrev idx_main_v355 (i : S1024x1.Idx) : S_.Idx := fun a => a.elim0
theorem val_main_v355_apply (i : S1024x1.Idx) :
    val_main_v355 (F := F) i = val_main_cst_2 (F := F) (idx_main_v355 i) := by
  unfold val_main_v355
  generalize val_main_cst_2 (F := F) = y
  exact broadcastInDim_apply _ bcast_S_S1024x1 y i (idx_main_v355 i) (fun a => a.elim0)

def val_main_v356 : (⟨S1024x1, .f32⟩ : BufTy).Contents (Elt F) :=
  addf (val_main_v355 (F := F)) (val_main_v354 (F := F) x0 x1 x2 x3 x4 x5 x6 x7 x8 x9 x10 x11 x12 x13 x14 x15 x16 x17 x18 x19 x20 x21 x22 x23 x24 x25 x26 x27)
theorem val_main_v356_apply (i : S1024x1.Idx) :
    val_main_v356 (F := F) x0 x1 x2 x3 x4 x5 x6 x7 x8 x9 x10 x11 x12 x13 x14 x15 x16 x17 x18 x19 x20 x21 x22 x23 x24 x25 x26 x27 i = FloatOps.addf (val_main_v355 (F := F) i) (val_main_v354 (F := F) x0 x1 x2 x3 x4 x5 x6 x7 x8 x9 x10 x11 x12 x13 x14 x15 x16 x17 x18 x19 x20 x21 x22 x23 x24 x25 x26 x27 i) := rfl

def val_main_cst_3 : (⟨S_, .f32⟩ : BufTy).Contents (Elt F) :=
  constant S_ .f32 0x3F800000#32
theorem val_main_cst_3_apply (i : S_.Idx) :
    val_main_cst_3 (F := F) i = FloatOps.ofBits .f32 0x3F800000#32 := rfl

def val_main_v357 : (⟨S1024x1, .f32⟩ : BufTy).Contents (Elt F) :=
  broadcastInDim S1024x1 ![] bcast_S_S1024x1 (val_main_cst_3 (F := F))
abbrev idx_main_v357 (i : S1024x1.Idx) : S_.Idx := fun a => a.elim0
theorem val_main_v357_apply (i : S1024x1.Idx) :
    val_main_v357 (F := F) i = val_main_cst_3 (F := F) (idx_main_v357 i) := by
  unfold val_main_v357
  generalize val_main_cst_3 (F := F) = y
  exact broadcastInDim_apply _ bcast_S_S1024x1 y i (idx_main_v357 i) (fun a => a.elim0)

def val_main_v358 : (⟨S1024x1, .f32⟩ : BufTy).Contents (Elt F) :=
  Host.divf (val_main_v357 (F := F)) (val_main_v356 (F := F) x0 x1 x2 x3 x4 x5 x6 x7 x8 x9 x10 x11 x12 x13 x14 x15 x16 x17 x18 x19 x20 x21 x22 x23 x24 x25 x26 x27)
theorem val_main_v358_apply (i : S1024x1.Idx) :
    val_main_v358 (F := F) x0 x1 x2 x3 x4 x5 x6 x7 x8 x9 x10 x11 x12 x13 x14 x15 x16 x17 x18 x19 x20 x21 x22 x23 x24 x25 x26 x27 i = FloatOps.hostDivf (val_main_v357 (F := F) i) (val_main_v356 (F := F) x0 x1 x2 x3 x4 x5 x6 x7 x8 x9 x10 x11 x12 x13 x14 x15 x16 x17 x18 x19 x20 x21 x22 x23 x24 x25 x26 x27 i) := rfl

def val_main_v359 : (⟨S1024x128, .f32⟩ : BufTy).Contents (Elt F) :=
  Host.dotGeneral dot_S1024x128_S128x128_S1024x128_1_0_0_1_n_n none (val_main_v338 (F := F) x0 x1 x2 x3 x4 x5 x6 x7 x8 x9 x10 x11 x12 x13 x14 x15 x16 x17 x18 x19 x20 x21) (x28)
theorem lhs_main_v359_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_main_v359_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_main_v359_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_main_v359_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
abbrev lidx_main_v359 (i : S1024x128.Idx) (k : Fin 128) : S1024x128.Idx := fun a => match a with
  | ⟨0, _⟩ => ⟨(i 0).val, (i 0).isLt⟩
  | ⟨1, _⟩ => ⟨k.val, k.isLt⟩
abbrev ridx_main_v359 (i : S1024x128.Idx) (k : Fin 128) : S128x128.Idx := fun a => match a with
  | ⟨0, _⟩ => ⟨k.val, k.isLt⟩
  | ⟨1, _⟩ => ⟨(i 1).val, (i 1).isLt⟩

theorem val_main_v359_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (x28 : (⟨S128x128, .f32⟩ : BufTy).Contents (Elt Ideal)) (i : S1024x128.Idx) :
    val_main_v359 (F := Ideal) x0 x1 x2 x3 x4 x5 x6 x7 x8 x9 x10 x11 x12 x13 x14 x15 x16 x17 x18 x19 x20 x21 x28 i = ∑ k : Fin 128, (val_main_v338 (F := Ideal) x0 x1 x2 x3 x4 x5 x6 x7 x8 x9 x10 x11 x12 x13 x14 x15 x16 x17 x18 x19 x20 x21) (lidx_main_v359 i k) * x28 (ridx_main_v359 i k) := by
  unfold val_main_v359
  generalize val_main_v338 (F := Ideal) x0 x1 x2 x3 x4 x5 x6 x7 x8 x9 x10 x11 x12 x13 x14 x15 x16 x17 x18 x19 x20 x21 = y0
  simp only [Host.dotGeneral]
  rw [Ideal.dotGeneral_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx i ((ValueIdx.contrEquiv1 dot_S1024x128_S128x128_S1024x128_1_0_0_1_n_n 128 rfl rfl).symm k) = lidx_main_v359 i k := funext fun a => Fin.ext (by
    match a with
    | ⟨0, _⟩ => exact lhs_main_v359_0 _ _
    | ⟨1, _⟩ => exact (lhs_main_v359_1 _ _).trans hk)
  have er : dot_S1024x128_S128x128_S1024x128_1_0_0_1_n_n.rhsIdx i ((ValueIdx.contrEquiv1 dot_S1024x128_S128x128_S1024x128_1_0_0_1_n_n 128 rfl rfl).symm k) = ridx_main_v359 i k := funext fun a => Fin.ext (by
    match a with
    | ⟨0, _⟩ => exact (rhs_main_v359_0 _ _).trans hk
    | ⟨1, _⟩ => exact rhs_main_v359_1 _ _)
  rw [el, er]

def val_main_v360 : (⟨S1x128, .f32⟩ : BufTy).Contents (Elt F) :=
  broadcastInDim S1x128 ![1] bcast_S128_S1x128_1 (x29)
abbrev idx_main_v360 (i : S1x128.Idx) : S128.Idx := fun a => match a with
  | ⟨0, _⟩ => ⟨(i 1).val, (i 1).isLt⟩
theorem val_main_v360_apply (i : S1x128.Idx) :
    val_main_v360 (F := F) x29 i = x29 (idx_main_v360 i) := by
  unfold val_main_v360
  exact broadcastInDim_apply _ bcast_S128_S1x128_1 x29 i (idx_main_v360 i) (fun a => match a with
    | ⟨0, _⟩ => by show (i 1).val = if (128 : Nat) = 1 then 0 else (i 1).val; rw [if_neg (by decide)])

def val_main_v361 : (⟨S1024x128, .f32⟩ : BufTy).Contents (Elt F) :=
  broadcastInDim S1024x128 ![0, 1] bcast_S1x128_S1024x128_0_1 (val_main_v360 (F := F) x29)
abbrev idx_main_v361 (i : S1024x128.Idx) : S1x128.Idx := fun a => match a with
  | ⟨0, _⟩ => ⟨0, Nat.one_pos⟩
  | ⟨1, _⟩ => ⟨(i 1).val, (i 1).isLt⟩
theorem val_main_v361_apply (i : S1024x128.Idx) :
    val_main_v361 (F := F) x29 i = val_main_v360 (F := F) x29 (idx_main_v361 i) := by
  unfold val_main_v361
  generalize val_main_v360 (F := F) x29 = y
  exact broadcastInDim_apply _ bcast_S1x128_S1024x128_0_1 y i (idx_main_v361 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v362 : (⟨S1024x128, .f32⟩ : BufTy).Contents (Elt F) :=
  addf (val_main_v359 (F := F) x0 x1 x2 x3 x4 x5 x6 x7 x8 x9 x10 x11 x12 x13 x14 x15 x16 x17 x18 x19 x20 x21 x28) (val_main_v361 (F := F) x29)
theorem val_main_v362_apply (i : S1024x128.Idx) :
    val_main_v362 (F := F) x0 x1 x2 x3 x4 x5 x6 x7 x8 x9 x10 x11 x12 x13 x14 x15 x16 x17 x18 x19 x20 x21 x28 x29 i = FloatOps.addf (val_main_v359 (F := F) x0 x1 x2 x3 x4 x5 x6 x7 x8 x9 x10 x11 x12 x13 x14 x15 x16 x17 x18 x19 x20 x21 x28 i) (val_main_v361 (F := F) x29 i) := rfl

def val_main_call20_cst : (⟨S_, .f32⟩ : BufTy).Contents (Elt F) :=
  constant S_ .f32 0x00000000#32
theorem val_main_call20_cst_apply (i : S_.Idx) :
    val_main_call20_cst (F := F) i = FloatOps.ofBits .f32 0x00000000#32 := rfl

def val_main_call20_v0 : (⟨S1024x128, .f32⟩ : BufTy).Contents (Elt F) :=
  broadcastInDim S1024x128 ![] bcast_S_S1024x128 (val_main_call20_cst (F := F))
abbrev idx_main_call20_v0 (i : S1024x128.Idx) : S_.Idx := fun a => a.elim0
theorem val_main_call20_v0_apply (i : S1024x128.Idx) :
    val_main_call20_v0 (F := F) i = val_main_call20_cst (F := F) (idx_main_call20_v0 i) := by
  unfold val_main_call20_v0
  generalize val_main_call20_cst (F := F) = y
  exact broadcastInDim_apply _ bcast_S_S1024x128 y i (idx_main_call20_v0 i) (fun a => a.elim0)

def val_main_v363 : (⟨S1024x128, .f32⟩ : BufTy).Contents (Elt F) :=
  maximumf (val_main_v362 (F := F) x0 x1 x2 x3 x4 x5 x6 x7 x8 x9 x10 x11 x12 x13 x14 x15 x16 x17 x18 x19 x20 x21 x28 x29) (val_main_call20_v0 (F := F))
theorem val_main_v363_apply (i : S1024x128.Idx) :
    val_main_v363 (F := F) x0 x1 x2 x3 x4 x5 x6 x7 x8 x9 x10 x11 x12 x13 x14 x15 x16 x17 x18 x19 x20 x21 x28 x29 i = FloatOps.maximumf (val_main_v362 (F := F) x0 x1 x2 x3 x4 x5 x6 x7 x8 x9 x10 x11 x12 x13 x14 x15 x16 x17 x18 x19 x20 x21 x28 x29 i) (val_main_call20_v0 (F := F) i) := rfl

def val_main_v364 : (⟨S1024x128, .f32⟩ : BufTy).Contents (Elt F) :=
  Host.dotGeneral dot_S1024x128_S128x128_S1024x128_1_0_0_1_n_n none (val_main_v363 (F := F) x0 x1 x2 x3 x4 x5 x6 x7 x8 x9 x10 x11 x12 x13 x14 x15 x16 x17 x18 x19 x20 x21 x28 x29) (x30)
theorem lhs_main_v364_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_main_v364_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_main_v364_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_main_v364_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
abbrev lidx_main_v364 (i : S1024x128.Idx) (k : Fin 128) : S1024x128.Idx := fun a => match a with
  | ⟨0, _⟩ => ⟨(i 0).val, (i 0).isLt⟩
  | ⟨1, _⟩ => ⟨k.val, k.isLt⟩
abbrev ridx_main_v364 (i : S1024x128.Idx) (k : Fin 128) : S128x128.Idx := fun a => match a with
  | ⟨0, _⟩ => ⟨k.val, k.isLt⟩
  | ⟨1, _⟩ => ⟨(i 1).val, (i 1).isLt⟩

theorem val_main_v364_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (x28 : (⟨S128x128, .f32⟩ : BufTy).Contents (Elt Ideal)) (x29 : (⟨S128, .f32⟩ : BufTy).Contents (Elt Ideal)) (x30 : (⟨S128x128, .f32⟩ : BufTy).Contents (Elt Ideal)) (i : S1024x128.Idx) :
    val_main_v364 (F := Ideal) x0 x1 x2 x3 x4 x5 x6 x7 x8 x9 x10 x11 x12 x13 x14 x15 x16 x17 x18 x19 x20 x21 x28 x29 x30 i = ∑ k : Fin 128, (val_main_v363 (F := Ideal) x0 x1 x2 x3 x4 x5 x6 x7 x8 x9 x10 x11 x12 x13 x14 x15 x16 x17 x18 x19 x20 x21 x28 x29) (lidx_main_v364 i k) * x30 (ridx_main_v364 i k) := by
  unfold val_main_v364
  generalize val_main_v363 (F := Ideal) x0 x1 x2 x3 x4 x5 x6 x7 x8 x9 x10 x11 x12 x13 x14 x15 x16 x17 x18 x19 x20 x21 x28 x29 = y0
  simp only [Host.dotGeneral]
  rw [Ideal.dotGeneral_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx i ((ValueIdx.contrEquiv1 dot_S1024x128_S128x128_S1024x128_1_0_0_1_n_n 128 rfl rfl).symm k) = lidx_main_v364 i k := funext fun a => Fin.ext (by
    match a with
    | ⟨0, _⟩ => exact lhs_main_v364_0 _ _
    | ⟨1, _⟩ => exact (lhs_main_v364_1 _ _).trans hk)
  have er : dot_S1024x128_S128x128_S1024x128_1_0_0_1_n_n.rhsIdx i ((ValueIdx.contrEquiv1 dot_S1024x128_S128x128_S1024x128_1_0_0_1_n_n 128 rfl rfl).symm k) = ridx_main_v364 i k := funext fun a => Fin.ext (by
    match a with
    | ⟨0, _⟩ => exact (rhs_main_v364_0 _ _).trans hk
    | ⟨1, _⟩ => exact rhs_main_v364_1 _ _)
  rw [el, er]

def val_main_v365 : (⟨S1x128, .f32⟩ : BufTy).Contents (Elt F) :=
  broadcastInDim S1x128 ![1] bcast_S128_S1x128_1 (x31)
abbrev idx_main_v365 (i : S1x128.Idx) : S128.Idx := fun a => match a with
  | ⟨0, _⟩ => ⟨(i 1).val, (i 1).isLt⟩
theorem val_main_v365_apply (i : S1x128.Idx) :
    val_main_v365 (F := F) x31 i = x31 (idx_main_v365 i) := by
  unfold val_main_v365
  exact broadcastInDim_apply _ bcast_S128_S1x128_1 x31 i (idx_main_v365 i) (fun a => match a with
    | ⟨0, _⟩ => by show (i 1).val = if (128 : Nat) = 1 then 0 else (i 1).val; rw [if_neg (by decide)])

def val_main_v366 : (⟨S1024x128, .f32⟩ : BufTy).Contents (Elt F) :=
  broadcastInDim S1024x128 ![0, 1] bcast_S1x128_S1024x128_0_1 (val_main_v365 (F := F) x31)
abbrev idx_main_v366 (i : S1024x128.Idx) : S1x128.Idx := fun a => match a with
  | ⟨0, _⟩ => ⟨0, Nat.one_pos⟩
  | ⟨1, _⟩ => ⟨(i 1).val, (i 1).isLt⟩
theorem val_main_v366_apply (i : S1024x128.Idx) :
    val_main_v366 (F := F) x31 i = val_main_v365 (F := F) x31 (idx_main_v366 i) := by
  unfold val_main_v366
  generalize val_main_v365 (F := F) x31 = y
  exact broadcastInDim_apply _ bcast_S1x128_S1024x128_0_1 y i (idx_main_v366 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v367 : (⟨S1024x128, .f32⟩ : BufTy).Contents (Elt F) :=
  addf (val_main_v364 (F := F) x0 x1 x2 x3 x4 x5 x6 x7 x8 x9 x10 x11 x12 x13 x14 x15 x16 x17 x18 x19 x20 x21 x28 x29 x30) (val_main_v366 (F := F) x31)
theorem val_main_v367_apply (i : S1024x128.Idx) :
    val_main_v367 (F := F) x0 x1 x2 x3 x4 x5 x6 x7 x8 x9 x10 x11 x12 x13 x14 x15 x16 x17 x18 x19 x20 x21 x28 x29 x30 x31 i = FloatOps.addf (val_main_v364 (F := F) x0 x1 x2 x3 x4 x5 x6 x7 x8 x9 x10 x11 x12 x13 x14 x15 x16 x17 x18 x19 x20 x21 x28 x29 x30 i) (val_main_v366 (F := F) x31 i) := rfl

def val_main_call21_cst : (⟨S_, .f32⟩ : BufTy).Contents (Elt F) :=
  constant S_ .f32 0x00000000#32
theorem val_main_call21_cst_apply (i : S_.Idx) :
    val_main_call21_cst (F := F) i = FloatOps.ofBits .f32 0x00000000#32 := rfl

def val_main_call21_v0 : (⟨S1024x128, .f32⟩ : BufTy).Contents (Elt F) :=
  broadcastInDim S1024x128 ![] bcast_S_S1024x128 (val_main_call21_cst (F := F))
abbrev idx_main_call21_v0 (i : S1024x128.Idx) : S_.Idx := fun a => a.elim0
theorem val_main_call21_v0_apply (i : S1024x128.Idx) :
    val_main_call21_v0 (F := F) i = val_main_call21_cst (F := F) (idx_main_call21_v0 i) := by
  unfold val_main_call21_v0
  generalize val_main_call21_cst (F := F) = y
  exact broadcastInDim_apply _ bcast_S_S1024x128 y i (idx_main_call21_v0 i) (fun a => a.elim0)

def val_main_v368 : (⟨S1024x128, .f32⟩ : BufTy).Contents (Elt F) :=
  maximumf (val_main_v367 (F := F) x0 x1 x2 x3 x4 x5 x6 x7 x8 x9 x10 x11 x12 x13 x14 x15 x16 x17 x18 x19 x20 x21 x28 x29 x30 x31) (val_main_call21_v0 (F := F))
theorem val_main_v368_apply (i : S1024x128.Idx) :
    val_main_v368 (F := F) x0 x1 x2 x3 x4 x5 x6 x7 x8 x9 x10 x11 x12 x13 x14 x15 x16 x17 x18 x19 x20 x21 x28 x29 x30 x31 i = FloatOps.maximumf (val_main_v367 (F := F) x0 x1 x2 x3 x4 x5 x6 x7 x8 x9 x10 x11 x12 x13 x14 x15 x16 x17 x18 x19 x20 x21 x28 x29 x30 x31 i) (val_main_call21_v0 (F := F) i) := rfl

def val_main_v369 : (⟨S1024x1, .f32⟩ : BufTy).Contents (Elt F) :=
  Host.dotGeneral dot_S1024x128_S128x1_S1024x1_1_0_0_1_n_n none (val_main_v368 (F := F) x0 x1 x2 x3 x4 x5 x6 x7 x8 x9 x10 x11 x12 x13 x14 x15 x16 x17 x18 x19 x20 x21 x28 x29 x30 x31) (x32)
theorem lhs_main_v369_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide), dif_pos (show (0 : Fin S1024x128.rank) ∈ dot_S1024x128_S128x1_S1024x1_1_0_0_1_n_n.lhsNonContracting by decide)]
  rfl
theorem lhs_main_v369_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
theorem rhs_main_v369_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
theorem rhs_main_v369_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide), dif_pos (show (1 : Fin S128x1.rank) ∈ dot_S1024x128_S128x1_S1024x1_1_0_0_1_n_n.rhsNonContracting by decide)]
  rfl
abbrev lidx_main_v369 (i : S1024x1.Idx) (k : Fin 128) : S1024x128.Idx := fun a => match a with
  | ⟨0, _⟩ => ⟨(i 0).val, (i 0).isLt⟩
  | ⟨1, _⟩ => ⟨k.val, k.isLt⟩
abbrev ridx_main_v369 (i : S1024x1.Idx) (k : Fin 128) : S128x1.Idx := fun a => match a with
  | ⟨0, _⟩ => ⟨k.val, k.isLt⟩
  | ⟨1, _⟩ => ⟨(i 1).val, (i 1).isLt⟩

theorem val_main_v369_apply (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal)) (x5 : (⟨S64512, .f32⟩ : BufTy).Contents (Elt Ideal)) (x6 x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (x28 : (⟨S128x128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x1, .f32⟩ : BufTy).Contents (Elt Ideal)) (i : S1024x1.Idx) :
    val_main_v369 (F := Ideal) x0 x1 x2 x3 x4 x5 x6 x7 x8 x9 x10 x11 x12 x13 x14 x15 x16 x17 x18 x19 x20 x21 x28 x29 x30 x31 x32 i = ∑ k : Fin 128, (val_main_v368 (F := Ideal) x0 x1 x2 x3 x4 x5 x6 x7 x8 x9 x10 x11 x12 x13 x14 x15 x16 x17 x18 x19 x20 x21 x28 x29 x30 x31) (lidx_main_v369 i k) * x32 (ridx_main_v369 i k) := by
  unfold val_main_v369
  generalize val_main_v368 (F := Ideal) x0 x1 x2 x3 x4 x5 x6 x7 x8 x9 x10 x11 x12 x13 x14 x15 x16 x17 x18 x19 x20 x21 x28 x29 x30 x31 = y0
  simp only [Host.dotGeneral]
  rw [Ideal.dotGeneral_apply, ← Equiv.sum_comp (ValueIdx.contrEquiv1 dot_S1024x128_S128x1_S1024x1_1_0_0_1_n_n 128 rfl rfl).symm]
  refine Finset.sum_congr rfl fun k _ => ?_
  have hk := ValueIdx.contrEquiv1_symm_val dot_S1024x128_S128x1_S1024x1_1_0_0_1_n_n 128 rfl rfl k
  have el : dot_S1024x128_S128x1_S1024x1_1_0_0_1_n_n.lhsIdx i ((ValueIdx.contrEquiv1 dot_S1024x128_S128x1_S1024x1_1_0_0_1_n_n 128 rfl rfl).symm k) = lidx_main_v369 i k := funext fun a => Fin.ext (by
    match a with
    | ⟨0, _⟩ => exact lhs_main_v369_0 _ _
    | ⟨1, _⟩ => exact (lhs_main_v369_1 _ _).trans hk)
  have er : dot_S1024x128_S128x1_S1024x1_1_0_0_1_n_n.rhsIdx i ((ValueIdx.contrEquiv1 dot_S1024x128_S128x1_S1024x1_1_0_0_1_n_n 128 rfl rfl).symm k) = ridx_main_v369 i k := funext fun a => Fin.ext (by
    match a with
    | ⟨0, _⟩ => exact (rhs_main_v369_0 _ _).trans hk
    | ⟨1, _⟩ => exact rhs_main_v369_1 _ _)
  rw [el, er]

def val_main_v370 : (⟨S1x1, .f32⟩ : BufTy).Contents (Elt F) :=
  broadcastInDim S1x1 ![1] bcast_S1_S1x1_1 (x33)
abbrev idx_main_v370 (i : S1x1.Idx) : S1.Idx := fun a => match a with
  | ⟨0, _⟩ => ⟨0, Nat.one_pos⟩
theorem val_main_v370_apply (i : S1x1.Idx) :
    val_main_v370 (F := F) x33 i = x33 (idx_main_v370 i) := by
  unfold val_main_v370
  exact broadcastInDim_apply _ bcast_S1_S1x1_1 x33 i (idx_main_v370 i) (fun a => match a with
    | ⟨0, _⟩ => by show 0 = if (1 : Nat) = 1 then 0 else (i 1).val; rw [if_pos rfl])

def val_main_v371 : (⟨S1024x1, .f32⟩ : BufTy).Contents (Elt F) :=
  broadcastInDim S1024x1 ![0, 1] bcast_S1x1_S1024x1_0_1 (val_main_v370 (F := F) x33)
abbrev idx_main_v371 (i : S1024x1.Idx) : S1x1.Idx := fun a => match a with
  | ⟨0, _⟩ => ⟨0, Nat.one_pos⟩
  | ⟨1, _⟩ => ⟨0, Nat.one_pos⟩
theorem val_main_v371_apply (i : S1024x1.Idx) :
    val_main_v371 (F := F) x33 i = val_main_v370 (F := F) x33 (idx_main_v371 i) := by
  unfold val_main_v371
  generalize val_main_v370 (F := F) x33 = y
  exact broadcastInDim_apply _ bcast_S1x1_S1024x1_0_1 y i (idx_main_v371 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_v372 : (⟨S1024x1, .f32⟩ : BufTy).Contents (Elt F) :=
  addf (val_main_v369 (F := F) x0 x1 x2 x3 x4 x5 x6 x7 x8 x9 x10 x11 x12 x13 x14 x15 x16 x17 x18 x19 x20 x21 x28 x29 x30 x31 x32) (val_main_v371 (F := F) x33)
theorem val_main_v372_apply (i : S1024x1.Idx) :
    val_main_v372 (F := F) x0 x1 x2 x3 x4 x5 x6 x7 x8 x9 x10 x11 x12 x13 x14 x15 x16 x17 x18 x19 x20 x21 x28 x29 x30 x31 x32 x33 i = FloatOps.addf (val_main_v369 (F := F) x0 x1 x2 x3 x4 x5 x6 x7 x8 x9 x10 x11 x12 x13 x14 x15 x16 x17 x18 x19 x20 x21 x28 x29 x30 x31 x32 i) (val_main_v371 (F := F) x33 i) := rfl

def val_main_v373 : (⟨S1024x1, .f32⟩ : BufTy).Contents (Elt F) :=
  Host.negf (val_main_v372 (F := F) x0 x1 x2 x3 x4 x5 x6 x7 x8 x9 x10 x11 x12 x13 x14 x15 x16 x17 x18 x19 x20 x21 x28 x29 x30 x31 x32 x33)
theorem val_main_v373_apply (i : S1024x1.Idx) :
    val_main_v373 (F := F) x0 x1 x2 x3 x4 x5 x6 x7 x8 x9 x10 x11 x12 x13 x14 x15 x16 x17 x18 x19 x20 x21 x28 x29 x30 x31 x32 x33 i = FloatOps.hostNegf (val_main_v372 (F := F) x0 x1 x2 x3 x4 x5 x6 x7 x8 x9 x10 x11 x12 x13 x14 x15 x16 x17 x18 x19 x20 x21 x28 x29 x30 x31 x32 x33 i) := rfl

def val_main_v374 : (⟨S1024x1, .f32⟩ : BufTy).Contents (Elt F) :=
  Host.exp (val_main_v373 (F := F) x0 x1 x2 x3 x4 x5 x6 x7 x8 x9 x10 x11 x12 x13 x14 x15 x16 x17 x18 x19 x20 x21 x28 x29 x30 x31 x32 x33)
theorem val_main_v374_apply (i : S1024x1.Idx) :
    val_main_v374 (F := F) x0 x1 x2 x3 x4 x5 x6 x7 x8 x9 x10 x11 x12 x13 x14 x15 x16 x17 x18 x19 x20 x21 x28 x29 x30 x31 x32 x33 i = FloatOps.hostUnary .exp (val_main_v373 (F := F) x0 x1 x2 x3 x4 x5 x6 x7 x8 x9 x10 x11 x12 x13 x14 x15 x16 x17 x18 x19 x20 x21 x28 x29 x30 x31 x32 x33 i) := rfl

def val_main_cst_4 : (⟨S_, .f32⟩ : BufTy).Contents (Elt F) :=
  constant S_ .f32 0x3F800000#32
theorem val_main_cst_4_apply (i : S_.Idx) :
    val_main_cst_4 (F := F) i = FloatOps.ofBits .f32 0x3F800000#32 := rfl

def val_main_v375 : (⟨S1024x1, .f32⟩ : BufTy).Contents (Elt F) :=
  broadcastInDim S1024x1 ![] bcast_S_S1024x1 (val_main_cst_4 (F := F))
abbrev idx_main_v375 (i : S1024x1.Idx) : S_.Idx := fun a => a.elim0
theorem val_main_v375_apply (i : S1024x1.Idx) :
    val_main_v375 (F := F) i = val_main_cst_4 (F := F) (idx_main_v375 i) := by
  unfold val_main_v375
  generalize val_main_cst_4 (F := F) = y
  exact broadcastInDim_apply _ bcast_S_S1024x1 y i (idx_main_v375 i) (fun a => a.elim0)

def val_main_v376 : (⟨S1024x1, .f32⟩ : BufTy).Contents (Elt F) :=
  addf (val_main_v375 (F := F)) (val_main_v374 (F := F) x0 x1 x2 x3 x4 x5 x6 x7 x8 x9 x10 x11 x12 x13 x14 x15 x16 x17 x18 x19 x20 x21 x28 x29 x30 x31 x32 x33)
theorem val_main_v376_apply (i : S1024x1.Idx) :
    val_main_v376 (F := F) x0 x1 x2 x3 x4 x5 x6 x7 x8 x9 x10 x11 x12 x13 x14 x15 x16 x17 x18 x19 x20 x21 x28 x29 x30 x31 x32 x33 i = FloatOps.addf (val_main_v375 (F := F) i) (val_main_v374 (F := F) x0 x1 x2 x3 x4 x5 x6 x7 x8 x9 x10 x11 x12 x13 x14 x15 x16 x17 x18 x19 x20 x21 x28 x29 x30 x31 x32 x33 i) := rfl

def val_main_cst_5 : (⟨S_, .f32⟩ : BufTy).Contents (Elt F) :=
  constant S_ .f32 0x3F800000#32
theorem val_main_cst_5_apply (i : S_.Idx) :
    val_main_cst_5 (F := F) i = FloatOps.ofBits .f32 0x3F800000#32 := rfl

def val_main_v377 : (⟨S1024x1, .f32⟩ : BufTy).Contents (Elt F) :=
  broadcastInDim S1024x1 ![] bcast_S_S1024x1 (val_main_cst_5 (F := F))
abbrev idx_main_v377 (i : S1024x1.Idx) : S_.Idx := fun a => a.elim0
theorem val_main_v377_apply (i : S1024x1.Idx) :
    val_main_v377 (F := F) i = val_main_cst_5 (F := F) (idx_main_v377 i) := by
  unfold val_main_v377
  generalize val_main_cst_5 (F := F) = y
  exact broadcastInDim_apply _ bcast_S_S1024x1 y i (idx_main_v377 i) (fun a => a.elim0)

def val_main_v378 : (⟨S1024x1, .f32⟩ : BufTy).Contents (Elt F) :=
  Host.divf (val_main_v377 (F := F)) (val_main_v376 (F := F) x0 x1 x2 x3 x4 x5 x6 x7 x8 x9 x10 x11 x12 x13 x14 x15 x16 x17 x18 x19 x20 x21 x28 x29 x30 x31 x32 x33)
theorem val_main_v378_apply (i : S1024x1.Idx) :
    val_main_v378 (F := F) x0 x1 x2 x3 x4 x5 x6 x7 x8 x9 x10 x11 x12 x13 x14 x15 x16 x17 x18 x19 x20 x21 x28 x29 x30 x31 x32 x33 i = FloatOps.hostDivf (val_main_v377 (F := F) i) (val_main_v376 (F := F) x0 x1 x2 x3 x4 x5 x6 x7 x8 x9 x10 x11 x12 x13 x14 x15 x16 x17 x18 x19 x20 x21 x28 x29 x30 x31 x32 x33 i) := rfl

end Cert.ReferenceIdeal.Stages

end
-- ==== Proof.RefRunBase.lean ====
import proofs.«410031_j84061099917532_3_alg».proof.Proof.RefRunSegs
import proofs.«410031_j84061099917532_3_alg».proof.Proof.RefKept
import proofs.«410031_j84061099917532_3_alg».proof.Proof.RefStages

noncomputable section

namespace Cert.ReferenceIdeal.StagedRun

open Cert.ReferenceIdeal Cert.ReferenceIdeal.Gen Cert.ReferenceIdeal.Stages Idealize.ShloMosaic Idealize.ShloMosaic.TcCoe Idealize.SL.Sem Idealize.ShloMosaic.StableHlo

def key (b : Ref sig .tc) : ℕ := b.idx.val

theorem not_mem_of_key {B : List (Ref sig .tc)} {b : Ref sig .tc} (h : key b ∉ B.map key) : b ∉ B :=
  fun hm => h (List.mem_map_of_mem hm)

variable (x0 : (⟨S64512x32, .f32⟩ : BufTy).Contents (Elt Ideal)) (x1 : (⟨S64512x32, .f32⟩ : BufTy).Contents (Elt Ideal)) (x2 : (⟨S64512x1000, .f32⟩ : BufTy).Contents (Elt Ideal)) (x3 : (⟨S64512x4x64, .f32⟩ : BufTy).Contents (Elt Ideal)) (x4 : (⟨S64512x4x64, .f32⟩ : BufTy).Contents (Elt Ideal)) (x5 : (⟨S64512, .f32⟩ : BufTy).Contents (Elt Ideal)) (x6 : (⟨S64512, .i32⟩ : BufTy).Contents (Elt Ideal)) (x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x1, .f32⟩ : BufTy).Contents (Elt Ideal)) (x27 : (⟨S1, .f32⟩ : BufTy).Contents (Elt Ideal)) (x28 : (⟨S128x128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x1, .f32⟩ : BufTy).Contents (Elt Ideal)) (x33 : (⟨S1, .f32⟩ : BufTy).Contents (Elt Ideal))

structure Base (V : Valuation τ sig (Elt Ideal)) : Prop where
  e3 : V (Proc.devRef .tc main_v3) = val_main_v3 (F := Ideal) x0 x8 x9
  e7 : V (Proc.devRef .tc main_v7) = val_main_v7 (F := Ideal) x1 x10 x11
  e14 : V (Proc.devRef .tc main_v14) = val_main_v14 (F := Ideal) x2 x5 x12 x13
  e19 : V (Proc.devRef .tc main_v19) = val_main_v19 (F := Ideal) x3 x14 x15
  e24 : V (Proc.devRef .tc main_v24) = val_main_v24 (F := Ideal) x4 x14 x15
  e25 : V (Proc.devRef .tc main_v25) = val_main_v25 (F := Ideal) x6
  e26 : V (Proc.devRef .tc main_v26) = val_main_v26 (F := Ideal) x7
  a16 : V (Proc.devRef .tc main_arg16) = x16
  a17 : V (Proc.devRef .tc main_arg17) = x17
  a18 : V (Proc.devRef .tc main_arg18) = x18
  a19 : V (Proc.devRef .tc main_arg19) = x19
  a20 : V (Proc.devRef .tc main_arg20) = x20
  a21 : V (Proc.devRef .tc main_arg21) = x21
  a22 : V (Proc.devRef .tc main_arg22) = x22
  a23 : V (Proc.devRef .tc main_arg23) = x23
  a24 : V (Proc.devRef .tc main_arg24) = x24
  a25 : V (Proc.devRef .tc main_arg25) = x25
  a26 : V (Proc.devRef .tc main_arg26) = x26
  a27 : V (Proc.devRef .tc main_arg27) = x27
  a28 : V (Proc.devRef .tc main_arg28) = x28
  a29 : V (Proc.devRef .tc main_arg29) = x29
  a30 : V (Proc.devRef .tc main_arg30) = x30
  a31 : V (Proc.devRef .tc main_arg31) = x31
  a32 : V (Proc.devRef .tc main_arg32) = x32
  a33 : V (Proc.devRef .tc main_arg33) = x33

theorem Base.step1 {V : Valuation τ sig (Elt Ideal)} (h : Base x0 x1 x2 x3 x4 x5 x6 x7 x8 x9 x10 x11 x12 x13 x14 x15 x16 x17 x18 x19 x20 x21 x22 x23 x24 x25 x26 x27 x28 x29 x30 x31 x32 x33 V) : Base x0 x1 x2 x3 x4 x5 x6 x7 x8 x9 x10 x11 x12 x13 x14 x15 x16 x17 x18 x19 x20 x21 x22 x23 x24 x25 x26 x27 x28 x29 x30 x31 x32 x33 (after ops1 V) where
  e3 := (kept1 V main_v3 (not_mem_of_key (by decide))).trans h.e3
  e7 := (kept1 V main_v7 (not_mem_of_key (by decide))).trans h.e7
  e14 := (kept1 V main_v14 (not_mem_of_key (by decide))).trans h.e14
  e19 := (kept1 V main_v19 (not_mem_of_key (by decide))).trans h.e19
  e24 := (kept1 V main_v24 (not_mem_of_key (by decide))).trans h.e24
  e25 := (kept1 V main_v25 (not_mem_of_key (by decide))).trans h.e25
  e26 := (kept1 V main_v26 (not_mem_of_key (by decide))).trans h.e26
  a16 := (kept1 V main_arg16 (not_mem_of_key (by decide))).trans h.a16
  a17 := (kept1 V main_arg17 (not_mem_of_key (by decide))).trans h.a17
  a18 := (kept1 V main_arg18 (not_mem_of_key (by decide))).trans h.a18
  a19 := (kept1 V main_arg19 (not_mem_of_key (by decide))).trans h.a19
  a20 := (kept1 V main_arg20 (not_mem_of_key (by decide))).trans h.a20
  a21 := (kept1 V main_arg21 (not_mem_of_key (by decide))).trans h.a21
  a22 := (kept1 V main_arg22 (not_mem_of_key (by decide))).trans h.a22
  a23 := (kept1 V main_arg23 (not_mem_of_key (by decide))).trans h.a23
  a24 := (kept1 V main_arg24 (not_mem_of_key (by decide))).trans h.a24
  a25 := (kept1 V main_arg25 (not_mem_of_key (by decide))).trans h.a25
  a26 := (kept1 V main_arg26 (not_mem_of_key (by decide))).trans h.a26
  a27 := (kept1 V main_arg27 (not_mem_of_key (by decide))).trans h.a27
  a28 := (kept1 V main_arg28 (not_mem_of_key (by decide))).trans h.a28
  a29 := (kept1 V main_arg29 (not_mem_of_key (by decide))).trans h.a29
  a30 := (kept1 V main_arg30 (not_mem_of_key (by decide))).trans h.a30
  a31 := (kept1 V main_arg31 (not_mem_of_key (by decide))).trans h.a31
  a32 := (kept1 V main_arg32 (not_mem_of_key (by decide))).trans h.a32
  a33 := (kept1 V main_arg33 (not_mem_of_key (by decide))).trans h.a33

theorem Base.step2 {V : Valuation τ sig (Elt Ideal)} (h : Base x0 x1 x2 x3 x4 x5 x6 x7 x8 x9 x10 x11 x12 x13 x14 x15 x16 x17 x18 x19 x20 x21 x22 x23 x24 x25 x26 x27 x28 x29 x30 x31 x32 x33 V) : Base x0 x1 x2 x3 x4 x5 x6 x7 x8 x9 x10 x11 x12 x13 x14 x15 x16 x17 x18 x19 x20 x21 x22 x23 x24 x25 x26 x27 x28 x29 x30 x31 x32 x33 (after ops2 V) where
  e3 := (kept2 V main_v3 (not_mem_of_key (by decide))).trans h.e3
  e7 := (kept2 V main_v7 (not_mem_of_key (by decide))).trans h.e7
  e14 := (kept2 V main_v14 (not_mem_of_key (by decide))).trans h.e14
  e19 := (kept2 V main_v19 (not_mem_of_key (by decide))).trans h.e19
  e24 := (kept2 V main_v24 (not_mem_of_key (by decide))).trans h.e24
  e25 := (kept2 V main_v25 (not_mem_of_key (by decide))).trans h.e25
  e26 := (kept2 V main_v26 (not_mem_of_key (by decide))).trans h.e26
  a16 := (kept2 V main_arg16 (not_mem_of_key (by decide))).trans h.a16
  a17 := (kept2 V main_arg17 (not_mem_of_key (by decide))).trans h.a17
  a18 := (kept2 V main_arg18 (not_mem_of_key (by decide))).trans h.a18
  a19 := (kept2 V main_arg19 (not_mem_of_key (by decide))).trans h.a19
  a20 := (kept2 V main_arg20 (not_mem_of_key (by decide))).trans h.a20
  a21 := (kept2 V main_arg21 (not_mem_of_key (by decide))).trans h.a21
  a22 := (kept2 V main_arg22 (not_mem_of_key (by decide))).trans h.a22
  a23 := (kept2 V main_arg23 (not_mem_of_key (by decide))).trans h.a23
  a24 := (kept2 V main_arg24 (not_mem_of_key (by decide))).trans h.a24
  a25 := (kept2 V main_arg25 (not_mem_of_key (by decide))).trans h.a25
  a26 := (kept2 V main_arg26 (not_mem_of_key (by decide))).trans h.a26
  a27 := (kept2 V main_arg27 (not_mem_of_key (by decide))).trans h.a27
  a28 := (kept2 V main_arg28 (not_mem_of_key (by decide))).trans h.a28
  a29 := (kept2 V main_arg29 (not_mem_of_key (by decide))).trans h.a29
  a30 := (kept2 V main_arg30 (not_mem_of_key (by decide))).trans h.a30
  a31 := (kept2 V main_arg31 (not_mem_of_key (by decide))).trans h.a31
  a32 := (kept2 V main_arg32 (not_mem_of_key (by decide))).trans h.a32
  a33 := (kept2 V main_arg33 (not_mem_of_key (by decide))).trans h.a33

theorem Base.step3 {V : Valuation τ sig (Elt Ideal)} (h : Base x0 x1 x2 x3 x4 x5 x6 x7 x8 x9 x10 x11 x12 x13 x14 x15 x16 x17 x18 x19 x20 x21 x22 x23 x24 x25 x26 x27 x28 x29 x30 x31 x32 x33 V) : Base x0 x1 x2 x3 x4 x5 x6 x7 x8 x9 x10 x11 x12 x13 x14 x15 x16 x17 x18 x19 x20 x21 x22 x23 x24 x25 x26 x27 x28 x29 x30 x31 x32 x33 (after ops3 V) where
  e3 := (kept3 V main_v3 (not_mem_of_key (by decide))).trans h.e3
  e7 := (kept3 V main_v7 (not_mem_of_key (by decide))).trans h.e7
  e14 := (kept3 V main_v14 (not_mem_of_key (by decide))).trans h.e14
  e19 := (kept3 V main_v19 (not_mem_of_key (by decide))).trans h.e19
  e24 := (kept3 V main_v24 (not_mem_of_key (by decide))).trans h.e24
  e25 := (kept3 V main_v25 (not_mem_of_key (by decide))).trans h.e25
  e26 := (kept3 V main_v26 (not_mem_of_key (by decide))).trans h.e26
  a16 := (kept3 V main_arg16 (not_mem_of_key (by decide))).trans h.a16
  a17 := (kept3 V main_arg17 (not_mem_of_key (by decide))).trans h.a17
  a18 := (kept3 V main_arg18 (not_mem_of_key (by decide))).trans h.a18
  a19 := (kept3 V main_arg19 (not_mem_of_key (by decide))).trans h.a19
  a20 := (kept3 V main_arg20 (not_mem_of_key (by decide))).trans h.a20
  a21 := (kept3 V main_arg21 (not_mem_of_key (by decide))).trans h.a21
  a22 := (kept3 V main_arg22 (not_mem_of_key (by decide))).trans h.a22
  a23 := (kept3 V main_arg23 (not_mem_of_key (by decide))).trans h.a23
  a24 := (kept3 V main_arg24 (not_mem_of_key (by decide))).trans h.a24
  a25 := (kept3 V main_arg25 (not_mem_of_key (by decide))).trans h.a25
  a26 := (kept3 V main_arg26 (not_mem_of_key (by decide))).trans h.a26
  a27 := (kept3 V main_arg27 (not_mem_of_key (by decide))).trans h.a27
  a28 := (kept3 V main_arg28 (not_mem_of_key (by decide))).trans h.a28
  a29 := (kept3 V main_arg29 (not_mem_of_key (by decide))).trans h.a29
  a30 := (kept3 V main_arg30 (not_mem_of_key (by decide))).trans h.a30
  a31 := (kept3 V main_arg31 (not_mem_of_key (by decide))).trans h.a31
  a32 := (kept3 V main_arg32 (not_mem_of_key (by decide))).trans h.a32
  a33 := (kept3 V main_arg33 (not_mem_of_key (by decide))).trans h.a33

theorem Base.step4 {V : Valuation τ sig (Elt Ideal)} (h : Base x0 x1 x2 x3 x4 x5 x6 x7 x8 x9 x10 x11 x12 x13 x14 x15 x16 x17 x18 x19 x20 x21 x22 x23 x24 x25 x26 x27 x28 x29 x30 x31 x32 x33 V) : Base x0 x1 x2 x3 x4 x5 x6 x7 x8 x9 x10 x11 x12 x13 x14 x15 x16 x17 x18 x19 x20 x21 x22 x23 x24 x25 x26 x27 x28 x29 x30 x31 x32 x33 (after ops4 V) where
  e3 := (kept4 V main_v3 (not_mem_of_key (by decide))).trans h.e3
  e7 := (kept4 V main_v7 (not_mem_of_key (by decide))).trans h.e7
  e14 := (kept4 V main_v14 (not_mem_of_key (by decide))).trans h.e14
  e19 := (kept4 V main_v19 (not_mem_of_key (by decide))).trans h.e19
  e24 := (kept4 V main_v24 (not_mem_of_key (by decide))).trans h.e24
  e25 := (kept4 V main_v25 (not_mem_of_key (by decide))).trans h.e25
  e26 := (kept4 V main_v26 (not_mem_of_key (by decide))).trans h.e26
  a16 := (kept4 V main_arg16 (not_mem_of_key (by decide))).trans h.a16
  a17 := (kept4 V main_arg17 (not_mem_of_key (by decide))).trans h.a17
  a18 := (kept4 V main_arg18 (not_mem_of_key (by decide))).trans h.a18
  a19 := (kept4 V main_arg19 (not_mem_of_key (by decide))).trans h.a19
  a20 := (kept4 V main_arg20 (not_mem_of_key (by decide))).trans h.a20
  a21 := (kept4 V main_arg21 (not_mem_of_key (by decide))).trans h.a21
  a22 := (kept4 V main_arg22 (not_mem_of_key (by decide))).trans h.a22
  a23 := (kept4 V main_arg23 (not_mem_of_key (by decide))).trans h.a23
  a24 := (kept4 V main_arg24 (not_mem_of_key (by decide))).trans h.a24
  a25 := (kept4 V main_arg25 (not_mem_of_key (by decide))).trans h.a25
  a26 := (kept4 V main_arg26 (not_mem_of_key (by decide))).trans h.a26
  a27 := (kept4 V main_arg27 (not_mem_of_key (by decide))).trans h.a27
  a28 := (kept4 V main_arg28 (not_mem_of_key (by decide))).trans h.a28
  a29 := (kept4 V main_arg29 (not_mem_of_key (by decide))).trans h.a29
  a30 := (kept4 V main_arg30 (not_mem_of_key (by decide))).trans h.a30
  a31 := (kept4 V main_arg31 (not_mem_of_key (by decide))).trans h.a31
  a32 := (kept4 V main_arg32 (not_mem_of_key (by decide))).trans h.a32
  a33 := (kept4 V main_arg33 (not_mem_of_key (by decide))).trans h.a33

theorem Base.step5 {V : Valuation τ sig (Elt Ideal)} (h : Base x0 x1 x2 x3 x4 x5 x6 x7 x8 x9 x10 x11 x12 x13 x14 x15 x16 x17 x18 x19 x20 x21 x22 x23 x24 x25 x26 x27 x28 x29 x30 x31 x32 x33 V) : Base x0 x1 x2 x3 x4 x5 x6 x7 x8 x9 x10 x11 x12 x13 x14 x15 x16 x17 x18 x19 x20 x21 x22 x23 x24 x25 x26 x27 x28 x29 x30 x31 x32 x33 (after ops5 V) where
  e3 := (kept5 V main_v3 (not_mem_of_key (by decide))).trans h.e3
  e7 := (kept5 V main_v7 (not_mem_of_key (by decide))).trans h.e7
  e14 := (kept5 V main_v14 (not_mem_of_key (by decide))).trans h.e14
  e19 := (kept5 V main_v19 (not_mem_of_key (by decide))).trans h.e19
  e24 := (kept5 V main_v24 (not_mem_of_key (by decide))).trans h.e24
  e25 := (kept5 V main_v25 (not_mem_of_key (by decide))).trans h.e25
  e26 := (kept5 V main_v26 (not_mem_of_key (by decide))).trans h.e26
  a16 := (kept5 V main_arg16 (not_mem_of_key (by decide))).trans h.a16
  a17 := (kept5 V main_arg17 (not_mem_of_key (by decide))).trans h.a17
  a18 := (kept5 V main_arg18 (not_mem_of_key (by decide))).trans h.a18
  a19 := (kept5 V main_arg19 (not_mem_of_key (by decide))).trans h.a19
  a20 := (kept5 V main_arg20 (not_mem_of_key (by decide))).trans h.a20
  a21 := (kept5 V main_arg21 (not_mem_of_key (by decide))).trans h.a21
  a22 := (kept5 V main_arg22 (not_mem_of_key (by decide))).trans h.a22
  a23 := (kept5 V main_arg23 (not_mem_of_key (by decide))).trans h.a23
  a24 := (kept5 V main_arg24 (not_mem_of_key (by decide))).trans h.a24
  a25 := (kept5 V main_arg25 (not_mem_of_key (by decide))).trans h.a25
  a26 := (kept5 V main_arg26 (not_mem_of_key (by decide))).trans h.a26
  a27 := (kept5 V main_arg27 (not_mem_of_key (by decide))).trans h.a27
  a28 := (kept5 V main_arg28 (not_mem_of_key (by decide))).trans h.a28
  a29 := (kept5 V main_arg29 (not_mem_of_key (by decide))).trans h.a29
  a30 := (kept5 V main_arg30 (not_mem_of_key (by decide))).trans h.a30
  a31 := (kept5 V main_arg31 (not_mem_of_key (by decide))).trans h.a31
  a32 := (kept5 V main_arg32 (not_mem_of_key (by decide))).trans h.a32
  a33 := (kept5 V main_arg33 (not_mem_of_key (by decide))).trans h.a33

theorem Base.step6 {V : Valuation τ sig (Elt Ideal)} (h : Base x0 x1 x2 x3 x4 x5 x6 x7 x8 x9 x10 x11 x12 x13 x14 x15 x16 x17 x18 x19 x20 x21 x22 x23 x24 x25 x26 x27 x28 x29 x30 x31 x32 x33 V) : Base x0 x1 x2 x3 x4 x5 x6 x7 x8 x9 x10 x11 x12 x13 x14 x15 x16 x17 x18 x19 x20 x21 x22 x23 x24 x25 x26 x27 x28 x29 x30 x31 x32 x33 (after ops6 V) where
  e3 := (kept6 V main_v3 (not_mem_of_key (by decide))).trans h.e3
  e7 := (kept6 V main_v7 (not_mem_of_key (by decide))).trans h.e7
  e14 := (kept6 V main_v14 (not_mem_of_key (by decide))).trans h.e14
  e19 := (kept6 V main_v19 (not_mem_of_key (by decide))).trans h.e19
  e24 := (kept6 V main_v24 (not_mem_of_key (by decide))).trans h.e24
  e25 := (kept6 V main_v25 (not_mem_of_key (by decide))).trans h.e25
  e26 := (kept6 V main_v26 (not_mem_of_key (by decide))).trans h.e26
  a16 := (kept6 V main_arg16 (not_mem_of_key (by decide))).trans h.a16
  a17 := (kept6 V main_arg17 (not_mem_of_key (by decide))).trans h.a17
  a18 := (kept6 V main_arg18 (not_mem_of_key (by decide))).trans h.a18
  a19 := (kept6 V main_arg19 (not_mem_of_key (by decide))).trans h.a19
  a20 := (kept6 V main_arg20 (not_mem_of_key (by decide))).trans h.a20
  a21 := (kept6 V main_arg21 (not_mem_of_key (by decide))).trans h.a21
  a22 := (kept6 V main_arg22 (not_mem_of_key (by decide))).trans h.a22
  a23 := (kept6 V main_arg23 (not_mem_of_key (by decide))).trans h.a23
  a24 := (kept6 V main_arg24 (not_mem_of_key (by decide))).trans h.a24
  a25 := (kept6 V main_arg25 (not_mem_of_key (by decide))).trans h.a25
  a26 := (kept6 V main_arg26 (not_mem_of_key (by decide))).trans h.a26
  a27 := (kept6 V main_arg27 (not_mem_of_key (by decide))).trans h.a27
  a28 := (kept6 V main_arg28 (not_mem_of_key (by decide))).trans h.a28
  a29 := (kept6 V main_arg29 (not_mem_of_key (by decide))).trans h.a29
  a30 := (kept6 V main_arg30 (not_mem_of_key (by decide))).trans h.a30
  a31 := (kept6 V main_arg31 (not_mem_of_key (by decide))).trans h.a31
  a32 := (kept6 V main_arg32 (not_mem_of_key (by decide))).trans h.a32
  a33 := (kept6 V main_arg33 (not_mem_of_key (by decide))).trans h.a33

end Cert.ReferenceIdeal.StagedRun

end
-- ==== Proof.RefChunk0.lean ====
import proofs.«410031_j84061099917532_3_alg».proof.Proof.RefOps
import proofs.«410031_j84061099917532_3_alg».proof.Proof.RefStages

namespace Cert.ReferenceIdeal.StagedRun

open Cert.ReferenceIdeal Cert.ReferenceIdeal.Gen Idealize.ShloMosaic Idealize.ShloMosaic.TcCoe Idealize.SL.Sem Idealize.ShloMosaic.StableHlo
open Cert.ReferenceIdeal.Stages

theorem ops0_main_v3 (V : Valuation τ sig (Elt Ideal))
    (x0 : (⟨S64512x32, .f32⟩ : BufTy).Contents (Elt Ideal)) (x8 : (⟨S32x128, .f32⟩ : BufTy).Contents (Elt Ideal)) (x9 : (⟨S128, .f32⟩ : BufTy).Contents (Elt Ideal))
    (h0 : V (Proc.devRef .tc main_arg0) = x0) (h8 : V (Proc.devRef .tc main_arg8) = x8) (h9 : V (Proc.devRef .tc main_arg9) = x9) :
    after ops0 V (Proc.devRef .tc main_v3) = val_main_v3 (F := Ideal) x0 x8 x9 := by
  subst h0 h8 h9
  after_results_simp
  rfl

theorem ops0_main_v7 (V : Valuation τ sig (Elt Ideal))
    (x1 : (⟨S64512x32, .f32⟩ : BufTy).Contents (Elt Ideal)) (x10 : (⟨S32x128, .f32⟩ : BufTy).Contents (Elt Ideal)) (x11 : (⟨S128, .f32⟩ : BufTy).Contents (Elt Ideal))
    (h1 : V (Proc.devRef .tc main_arg1) = x1) (h10 : V (Proc.devRef .tc main_arg10) = x10) (h11 : V (Proc.devRef .tc main_arg11) = x11) :
    after ops0 V (Proc.devRef .tc main_v7) = val_main_v7 (F := Ideal) x1 x10 x11 := by
  subst h1 h10 h11
  after_results_simp
  rfl

theorem ops0_main_v14 (V : Valuation τ sig (Elt Ideal))
    (x2 : (⟨S64512x1000, .f32⟩ : BufTy).Contents (Elt Ideal)) (x5 : (⟨S64512, .f32⟩ : BufTy).Contents (Elt Ideal)) (x12 : (⟨S1000x128, .f32⟩ : BufTy).Contents (Elt Ideal)) (x13 : (⟨S128, .f32⟩ : BufTy).Contents (Elt Ideal))
    (h2 : V (Proc.devRef .tc main_arg2) = x2) (h5 : V (Proc.devRef .tc main_arg5) = x5) (h12 : V (Proc.devRef .tc main_arg12) = x12) (h13 : V (Proc.devRef .tc main_arg13) = x13) :
    after ops0 V (Proc.devRef .tc main_v14) = val_main_v14 (F := Ideal) x2 x5 x12 x13 := by
  subst h2 h5 h12 h13
  after_results_simp
  rfl

theorem ops0_main_v19 (V : Valuation τ sig (Elt Ideal))
    (x3 : (⟨S64512x4x64, .f32⟩ : BufTy).Contents (Elt Ideal)) (x14 : (⟨S64x128, .f32⟩ : BufTy).Contents (Elt Ideal)) (x15 : (⟨S128, .f32⟩ : BufTy).Contents (Elt Ideal))
    (h3 : V (Proc.devRef .tc main_arg3) = x3) (h14 : V (Proc.devRef .tc main_arg14) = x14) (h15 : V (Proc.devRef .tc main_arg15) = x15) :
    after ops0 V (Proc.devRef .tc main_v19) = val_main_v19 (F := Ideal) x3 x14 x15 := by
  subst h3 h14 h15
  after_results_simp
  rfl

theorem ops0_main_v24 (V : Valuation τ sig (Elt Ideal))
    (x4 : (⟨S64512x4x64, .f32⟩ : BufTy).Contents (Elt Ideal)) (x14 : (⟨S64x128, .f32⟩ : BufTy).Contents (Elt Ideal)) (x15 : (⟨S128, .f32⟩ : BufTy).Contents (Elt Ideal))
    (h4 : V (Proc.devRef .tc main_arg4) = x4) (h14 : V (Proc.devRef .tc main_arg14) = x14) (h15 : V (Proc.devRef .tc main_arg15) = x15) :
    after ops0 V (Proc.devRef .tc main_v24) = val_main_v24 (F := Ideal) x4 x14 x15 := by
  subst h4 h14 h15
  after_results_simp
  rfl

theorem ops0_main_v25 (V : Valuation τ sig (Elt Ideal))
    (x6 : (⟨S64512, .i32⟩ : BufTy).Contents (Elt Ideal))
    (h6 : V (Proc.devRef .tc main_arg6) = x6) :
    after ops0 V (Proc.devRef .tc main_v25) = val_main_v25 (F := Ideal) x6 := by
  subst h6
  after_results_simp
  rfl

theorem ops0_main_v26 (V : Valuation τ sig (Elt Ideal))
    (x7 : (⟨S64512, .i32⟩ : BufTy).Contents (Elt Ideal))
    (h7 : V (Proc.devRef .tc main_arg7) = x7) :
    after ops0 V (Proc.devRef .tc main_v26) = val_main_v26 (F := Ideal) x7 := by
  subst h7
  after_results_simp
  rfl

theorem chunk0 (V : Valuation τ sig (Elt Ideal))
    (x0 : (⟨S64512x32, .f32⟩ : BufTy).Contents (Elt Ideal)) (x1 : (⟨S64512x32, .f32⟩ : BufTy).Contents (Elt Ideal)) (x2 : (⟨S64512x1000, .f32⟩ : BufTy).Contents (Elt Ideal)) (x3 : (⟨S64512x4x64, .f32⟩ : BufTy).Contents (Elt Ideal)) (x4 : (⟨S64512x4x64, .f32⟩ : BufTy).Contents (Elt Ideal)) (x5 : (⟨S64512, .f32⟩ : BufTy).Contents (Elt Ideal)) (x6 : (⟨S64512, .i32⟩ : BufTy).Contents (Elt Ideal)) (x7 : (⟨S64512, .i32⟩ : BufTy).Contents (Elt Ideal))
    (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal))
    (h0 : V (Proc.devRef .tc main_arg0) = x0) (h1 : V (Proc.devRef .tc main_arg1) = x1) (h2 : V (Proc.devRef .tc main_arg2) = x2) (h3 : V (Proc.devRef .tc main_arg3) = x3)
    (h4 : V (Proc.devRef .tc main_arg4) = x4) (h5 : V (Proc.devRef .tc main_arg5) = x5) (h6 : V (Proc.devRef .tc main_arg6) = x6) (h7 : V (Proc.devRef .tc main_arg7) = x7)
    (h8 : V (Proc.devRef .tc main_arg8) = x8) (h9 : V (Proc.devRef .tc main_arg9) = x9) (h10 : V (Proc.devRef .tc main_arg10) = x10) (h11 : V (Proc.devRef .tc main_arg11) = x11)
    (h12 : V (Proc.devRef .tc main_arg12) = x12) (h13 : V (Proc.devRef .tc main_arg13) = x13) (h14 : V (Proc.devRef .tc main_arg14) = x14) (h15 : V (Proc.devRef .tc main_arg15) = x15) :
    after ops0 V (Proc.devRef .tc main_v3) = val_main_v3 (F := Ideal) x0 x8 x9
    ∧ after ops0 V (Proc.devRef .tc main_v7) = val_main_v7 (F := Ideal) x1 x10 x11
    ∧ after ops0 V (Proc.devRef .tc main_v14) = val_main_v14 (F := Ideal) x2 x5 x12 x13
    ∧ after ops0 V (Proc.devRef .tc main_v19) = val_main_v19 (F := Ideal) x3 x14 x15
    ∧ after ops0 V (Proc.devRef .tc main_v24) = val_main_v24 (F := Ideal) x4 x14 x15
    ∧ after ops0 V (Proc.devRef .tc main_v25) = val_main_v25 (F := Ideal) x6
    ∧ after ops0 V (Proc.devRef .tc main_v26) = val_main_v26 (F := Ideal) x7 :=
  ⟨ops0_main_v3 V x0 x8 x9 h0 h8 h9,
   ops0_main_v7 V x1 x10 x11 h1 h10 h11,
   ops0_main_v14 V x2 x5 x12 x13 h2 h5 h12 h13,
   ops0_main_v19 V x3 x14 x15 h3 h14 h15,
   ops0_main_v24 V x4 x14 x15 h4 h14 h15,
   ops0_main_v25 V x6 h6,
   ops0_main_v26 V x7 h7⟩

end Cert.ReferenceIdeal.StagedRun
-- ==== Proof.RefChunk1.lean ====
import proofs.«410031_j84061099917532_3_alg».proof.Proof.RefOps
import proofs.«410031_j84061099917532_3_alg».proof.Proof.RefStages

namespace Cert.ReferenceIdeal.StagedRun

open Cert.ReferenceIdeal Cert.ReferenceIdeal.Gen Idealize.ShloMosaic Idealize.ShloMosaic.TcCoe Idealize.SL.Sem Idealize.ShloMosaic.StableHlo
open Cert.ReferenceIdeal.Stages

theorem concat_main_v33_result {hxs hy} (W : Valuation τ sig (Elt Ideal)) :
    (nary (τ := τ) ![main_v28, main_v29, main_v30, main_v31, main_v32, main_v27, main_v27, main_v27, main_v27, main_v27, main_v27] main_v33
        (fun u => concatenate S32768x1408 1 [⟨S32768x128, u 0⟩, ⟨S32768x128, u 1⟩, ⟨S32768x128, u 2⟩, ⟨S32768x128, u 3⟩, ⟨S32768x128, u 4⟩, ⟨S32768x128, u 5⟩, ⟨S32768x128, u 6⟩, ⟨S32768x128, u 7⟩, ⟨S32768x128, u 8⟩, ⟨S32768x128, u 9⟩, ⟨S32768x128, u 10⟩] concatenates_S32768x128_S32768x128_S32768x128_S32768x128_S32768x128_S32768x128_S32768x128_S32768x128_S32768x128_S32768x128_S32768x128_S32768x1408_d1)
        hxs hy).result W (no_index (Proc.devRef .tc main_v33))
      = concatenate S32768x1408 1 [⟨S32768x128, W (Proc.devRef .tc main_v28)⟩, ⟨S32768x128, W (Proc.devRef .tc main_v29)⟩, ⟨S32768x128, W (Proc.devRef .tc main_v30)⟩, ⟨S32768x128, W (Proc.devRef .tc main_v31)⟩, ⟨S32768x128, W (Proc.devRef .tc main_v32)⟩, ⟨S32768x128, W (Proc.devRef .tc main_v27)⟩, ⟨S32768x128, W (Proc.devRef .tc main_v27)⟩, ⟨S32768x128, W (Proc.devRef .tc main_v27)⟩, ⟨S32768x128, W (Proc.devRef .tc main_v27)⟩, ⟨S32768x128, W (Proc.devRef .tc main_v27)⟩, ⟨S32768x128, W (Proc.devRef .tc main_v27)⟩] concatenates_S32768x128_S32768x128_S32768x128_S32768x128_S32768x128_S32768x128_S32768x128_S32768x128_S32768x128_S32768x128_S32768x128_S32768x1408_d1 := by
  rw [nary_result]
  rfl

theorem ops1_split (V : Valuation τ sig (Elt Ideal)) : after ops1 V = after (ops1.drop 7) (after (ops1.take 7) V) := rfl

theorem ops1_head_main_v28 (V : Valuation τ sig (Elt Ideal))
    (x0 : (⟨S64512x32, .f32⟩ : BufTy).Contents (Elt Ideal)) (x8 : (⟨S32x128, .f32⟩ : BufTy).Contents (Elt Ideal)) (x9 : (⟨S128, .f32⟩ : BufTy).Contents (Elt Ideal))
    (h3 : V (Proc.devRef .tc main_v3) = val_main_v3 (F := Ideal) x0 x8 x9) :
    after (ops1.take 7) V (Proc.devRef .tc main_v28) = val_main_v28 (F := Ideal) x0 x8 x9 := by
  show after [_, _, _, _, _, _, _] V _ = _
  after_results_simp
  rw [h3]
  rfl

theorem ops1_head_main_v29 (V : Valuation τ sig (Elt Ideal))
    (x1 : (⟨S64512x32, .f32⟩ : BufTy).Contents (Elt Ideal)) (x10 : (⟨S32x128, .f32⟩ : BufTy).Contents (Elt Ideal)) (x11 : (⟨S128, .f32⟩ : BufTy).Contents (Elt Ideal))
    (h7 : V (Proc.devRef .tc main_v7) = val_main_v7 (F := Ideal) x1 x10 x11) :
    after (ops1.take 7) V (Proc.devRef .tc main_v29) = val_main_v29 (F := Ideal) x1 x10 x11 := by
  show after [_, _, _, _, _, _, _] V _ = _
  after_results_simp
  rw [h7]
  rfl

theorem ops1_head_main_v30 (V : Valuation τ sig (Elt Ideal))
    (x3 : (⟨S64512x4x64, .f32⟩ : BufTy).Contents (Elt Ideal)) (x14 : (⟨S64x128, .f32⟩ : BufTy).Contents (Elt Ideal)) (x15 : (⟨S128, .f32⟩ : BufTy).Contents (Elt Ideal))
    (h19 : V (Proc.devRef .tc main_v19) = val_main_v19 (F := Ideal) x3 x14 x15) :
    after (ops1.take 7) V (Proc.devRef .tc main_v30) = val_main_v30 (F := Ideal) x3 x14 x15 := by
  show after [_, _, _, _, _, _, _] V _ = _
  after_results_simp
  rw [h19]
  rfl

theorem ops1_head_main_v31 (V : Valuation τ sig (Elt Ideal))
    (x4 : (⟨S64512x4x64, .f32⟩ : BufTy).Contents (Elt Ideal)) (x14 : (⟨S64x128, .f32⟩ : BufTy).Contents (Elt Ideal)) (x15 : (⟨S128, .f32⟩ : BufTy).Contents (Elt Ideal))
    (h24 : V (Proc.devRef .tc main_v24) = val_main_v24 (F := Ideal) x4 x14 x15) :
    after (ops1.take 7) V (Proc.devRef .tc main_v31) = val_main_v31 (F := Ideal) x4 x14 x15 := by
  show after [_, _, _, _, _, _, _] V _ = _
  after_results_simp
  rw [h24]
  rfl

theorem ops1_head_main_v32 (V : Valuation τ sig (Elt Ideal))
    (x2 : (⟨S64512x1000, .f32⟩ : BufTy).Contents (Elt Ideal)) (x5 : (⟨S64512, .f32⟩ : BufTy).Contents (Elt Ideal)) (x12 : (⟨S1000x128, .f32⟩ : BufTy).Contents (Elt Ideal)) (x13 : (⟨S128, .f32⟩ : BufTy).Contents (Elt Ideal))
    (h14 : V (Proc.devRef .tc main_v14) = val_main_v14 (F := Ideal) x2 x5 x12 x13) :
    after (ops1.take 7) V (Proc.devRef .tc main_v32) = val_main_v32 (F := Ideal) x2 x5 x12 x13 := by
  show after [_, _, _, _, _, _, _] V _ = _
  after_results_simp
  rw [h14]
  rfl

theorem ops1_head_main_v27 (V : Valuation τ sig (Elt Ideal)) :
    after (ops1.take 7) V (Proc.devRef .tc main_v27) = val_main_v27 (F := Ideal) := by
  show after [_, _, _, _, _, _, _] V _ = _
  after_results_simp
  rfl

theorem ops1_head_main_arg16 (V : Valuation τ sig (Elt Ideal)) :
    after (ops1.take 7) V (Proc.devRef .tc main_arg16) = V (Proc.devRef .tc main_arg16) := by
  show after [_, _, _, _, _, _, _] V _ = _
  after_results_simp

theorem ops1_head_main_arg17 (V : Valuation τ sig (Elt Ideal)) :
    after (ops1.take 7) V (Proc.devRef .tc main_arg17) = V (Proc.devRef .tc main_arg17) := by
  show after [_, _, _, _, _, _, _] V _ = _
  after_results_simp

theorem ops1_head_main_arg18 (V : Valuation τ sig (Elt Ideal)) :
    after (ops1.take 7) V (Proc.devRef .tc main_arg18) = V (Proc.devRef .tc main_arg18) := by
  show after [_, _, _, _, _, _, _] V _ = _
  after_results_simp

theorem ops1_head_main_arg19 (V : Valuation τ sig (Elt Ideal)) :
    after (ops1.take 7) V (Proc.devRef .tc main_arg19) = V (Proc.devRef .tc main_arg19) := by
  show after [_, _, _, _, _, _, _] V _ = _
  after_results_simp

theorem ops1_head_main_arg20 (V : Valuation τ sig (Elt Ideal)) :
    after (ops1.take 7) V (Proc.devRef .tc main_arg20) = V (Proc.devRef .tc main_arg20) := by
  show after [_, _, _, _, _, _, _] V _ = _
  after_results_simp

theorem ops1_head_main_arg21 (V : Valuation τ sig (Elt Ideal)) :
    after (ops1.take 7) V (Proc.devRef .tc main_arg21) = V (Proc.devRef .tc main_arg21) := by
  show after [_, _, _, _, _, _, _] V _ = _
  after_results_simp

theorem ops1_tail_main_v48 (W : Valuation τ sig (Elt Ideal))
    (x0 x1 : (⟨S64512x32, .f32⟩ : BufTy).Contents (Elt Ideal))
    (x2 : (⟨S64512x1000, .f32⟩ : BufTy).Contents (Elt Ideal))
    (x3 x4 : (⟨S64512x4x64, .f32⟩ : BufTy).Contents (Elt Ideal))
    (x5 : (⟨S64512, .f32⟩ : BufTy).Contents (Elt Ideal))
    (x8 : (⟨S32x128, .f32⟩ : BufTy).Contents (Elt Ideal))
    (x9 : (⟨S128, .f32⟩ : BufTy).Contents (Elt Ideal))
    (x10 : (⟨S32x128, .f32⟩ : BufTy).Contents (Elt Ideal))
    (x11 : (⟨S128, .f32⟩ : BufTy).Contents (Elt Ideal))
    (x12 : (⟨S1000x128, .f32⟩ : BufTy).Contents (Elt Ideal))
    (x13 : (⟨S128, .f32⟩ : BufTy).Contents (Elt Ideal))
    (x14 : (⟨S64x128, .f32⟩ : BufTy).Contents (Elt Ideal))
    (x15 : (⟨S128, .f32⟩ : BufTy).Contents (Elt Ideal))
    (x16 : (⟨S1408x512, .f32⟩ : BufTy).Contents (Elt Ideal))
    (x17 : (⟨S512, .f32⟩ : BufTy).Contents (Elt Ideal))
    (x18 : (⟨S512x256, .f32⟩ : BufTy).Contents (Elt Ideal))
    (x19 : (⟨S256, .f32⟩ : BufTy).Contents (Elt Ideal))
    (x20 : (⟨S256x128, .f32⟩ : BufTy).Contents (Elt Ideal))
    (x21 : (⟨S128, .f32⟩ : BufTy).Contents (Elt Ideal))
    (hW28 : W (Proc.devRef .tc main_v28) = val_main_v28 (F := Ideal) x0 x8 x9)
    (hW29 : W (Proc.devRef .tc main_v29) = val_main_v29 (F := Ideal) x1 x10 x11)
    (hW30 : W (Proc.devRef .tc main_v30) = val_main_v30 (F := Ideal) x3 x14 x15)
    (hW31 : W (Proc.devRef .tc main_v31) = val_main_v31 (F := Ideal) x4 x14 x15)
    (hW32 : W (Proc.devRef .tc main_v32) = val_main_v32 (F := Ideal) x2 x5 x12 x13)
    (hW27 : W (Proc.devRef .tc main_v27) = val_main_v27 (F := Ideal))
    (h16 : W (Proc.devRef .tc main_arg16) = x16) (h17 : W (Proc.devRef .tc main_arg17) = x17)
    (h18 : W (Proc.devRef .tc main_arg18) = x18) (h19a : W (Proc.devRef .tc main_arg19) = x19)
    (h20 : W (Proc.devRef .tc main_arg20) = x20) (h21 : W (Proc.devRef .tc main_arg21) = x21) :
    after (ops1.drop 7) W (Proc.devRef .tc main_v48) = val_main_v48 (F := Ideal) x0 x1 x2 x3 x4 x5 x8 x9 x10 x11 x12 x13 x14 x15 x16 x17 x18 x19 x20 x21 := by
  subst h16 h17 h18 h19a h20 h21
  show after [_, _, _, _, _, _, _, _, _, _, _, _, _, _, _, _, _, _, _, _, _, _] W _ = _
  simp (disch := decide) only [after_cons, after_nil,
    nullary_result', unary_result', binary_result', concat_main_v33_result,
    nullary_result_ne', unary_result_ne', binary_result_ne', nary_result_ne']
  rw [hW28, hW29, hW30, hW31, hW32, hW27]
  rfl

theorem ops1_tail_main_v27 (W : Valuation τ sig (Elt Ideal)) :
    after (ops1.drop 7) W (Proc.devRef .tc main_v27) = W (Proc.devRef .tc main_v27) := by
  show after [_, _, _, _, _, _, _, _, _, _, _, _, _, _, _, _, _, _, _, _, _, _] W _ = _
  simp (disch := decide) only [after_cons, after_nil,
    nullary_result', unary_result', binary_result', concat_main_v33_result,
    nullary_result_ne', unary_result_ne', binary_result_ne', nary_result_ne']

theorem chunk1 (V : Valuation τ sig (Elt Ideal))
    (x0 x1 : (⟨S64512x32, .f32⟩ : BufTy).Contents (Elt Ideal))
    (x2 : (⟨S64512x1000, .f32⟩ : BufTy).Contents (Elt Ideal))
    (x3 x4 : (⟨S64512x4x64, .f32⟩ : BufTy).Contents (Elt Ideal))
    (x5 : (⟨S64512, .f32⟩ : BufTy).Contents (Elt Ideal))
    (x8 : (⟨S32x128, .f32⟩ : BufTy).Contents (Elt Ideal))
    (x9 : (⟨S128, .f32⟩ : BufTy).Contents (Elt Ideal))
    (x10 : (⟨S32x128, .f32⟩ : BufTy).Contents (Elt Ideal))
    (x11 : (⟨S128, .f32⟩ : BufTy).Contents (Elt Ideal))
    (x12 : (⟨S1000x128, .f32⟩ : BufTy).Contents (Elt Ideal))
    (x13 : (⟨S128, .f32⟩ : BufTy).Contents (Elt Ideal))
    (x14 : (⟨S64x128, .f32⟩ : BufTy).Contents (Elt Ideal))
    (x15 : (⟨S128, .f32⟩ : BufTy).Contents (Elt Ideal))
    (x16 : (⟨S1408x512, .f32⟩ : BufTy).Contents (Elt Ideal))
    (x17 : (⟨S512, .f32⟩ : BufTy).Contents (Elt Ideal))
    (x18 : (⟨S512x256, .f32⟩ : BufTy).Contents (Elt Ideal))
    (x19 : (⟨S256, .f32⟩ : BufTy).Contents (Elt Ideal))
    (x20 : (⟨S256x128, .f32⟩ : BufTy).Contents (Elt Ideal))
    (x21 : (⟨S128, .f32⟩ : BufTy).Contents (Elt Ideal))
    (h3 : V (Proc.devRef .tc main_v3) = val_main_v3 (F := Ideal) x0 x8 x9)
    (h7 : V (Proc.devRef .tc main_v7) = val_main_v7 (F := Ideal) x1 x10 x11)
    (h19 : V (Proc.devRef .tc main_v19) = val_main_v19 (F := Ideal) x3 x14 x15)
    (h24 : V (Proc.devRef .tc main_v24) = val_main_v24 (F := Ideal) x4 x14 x15)
    (h14 : V (Proc.devRef .tc main_v14) = val_main_v14 (F := Ideal) x2 x5 x12 x13)
    (h16 : V (Proc.devRef .tc main_arg16) = x16) (h17 : V (Proc.devRef .tc main_arg17) = x17)
    (h18 : V (Proc.devRef .tc main_arg18) = x18) (h19a : V (Proc.devRef .tc main_arg19) = x19)
    (h20 : V (Proc.devRef .tc main_arg20) = x20) (h21 : V (Proc.devRef .tc main_arg21) = x21) :
    after ops1 V (Proc.devRef .tc main_v48) = val_main_v48 (F := Ideal) x0 x1 x2 x3 x4 x5 x8 x9 x10 x11 x12 x13 x14 x15 x16 x17 x18 x19 x20 x21
    ∧ after ops1 V (Proc.devRef .tc main_v27) = val_main_v27 (F := Ideal) := by
  rw [ops1_split V]
  exact ⟨ops1_tail_main_v48 _ x0 x1 x2 x3 x4 x5 x8 x9 x10 x11 x12 x13 x14 x15 x16 x17 x18 x19 x20 x21
      (ops1_head_main_v28 V x0 x8 x9 h3) (ops1_head_main_v29 V x1 x10 x11 h7) (ops1_head_main_v30 V x3 x14 x15 h19)
      (ops1_head_main_v31 V x4 x14 x15 h24) (ops1_head_main_v32 V x2 x5 x12 x13 h14) (ops1_head_main_v27 V)
      ((ops1_head_main_arg16 V).trans h16) ((ops1_head_main_arg17 V).trans h17) ((ops1_head_main_arg18 V).trans h18)
      ((ops1_head_main_arg19 V).trans h19a) ((ops1_head_main_arg20 V).trans h20) ((ops1_head_main_arg21 V).trans h21),
    (ops1_tail_main_v27 _).trans (ops1_head_main_v27 V)⟩

end Cert.ReferenceIdeal.StagedRun
-- ==== Proof.RefChunk2.lean ====
import proofs.«410031_j84061099917532_3_alg».proof.Proof.RefOps
import proofs.«410031_j84061099917532_3_alg».proof.Proof.RefStages

set_option maxRecDepth 16384

namespace Cert.ReferenceIdeal.StagedRun

open Cert.ReferenceIdeal Cert.ReferenceIdeal.Gen Idealize.ShloMosaic Idealize.ShloMosaic.TcCoe Idealize.SL.Sem Idealize.ShloMosaic.StableHlo
open Cert.ReferenceIdeal.Stages

section Stretch

variable {F : FTy → Type} [FloatOps F]

theorem ops2_cut (V : Valuation τ sig (Elt F)) :
    after (ops2 (F := F)) V = after ((ops2 (F := F)).drop 42) (after ((ops2 (F := F)).take 42) V) := rfl

set_option maxHeartbeats 1000000 in

theorem ops2_head_main_v86 (V : Valuation τ sig (Elt F)) (x0 : (⟨S64512x32, .f32⟩ : BufTy).Contents (Elt F)) (x8 : (⟨S32x128, .f32⟩ : BufTy).Contents (Elt F)) (x9 : (⟨S128, .f32⟩ : BufTy).Contents (Elt F))
    (h3 : V (Proc.devRef .tc main_v3) = val_main_v3 (F := F) x0 x8 x9) :
    after ((ops2 (F := F)).take 42) V (Proc.devRef .tc main_v86) = val_main_v86 (F := F) x0 x8 x9 := by
  show after [_, _, _, _, _, _, _, _, _, _, _, _, _, _, _, _, _, _, _, _, _, _, _, _, _, _, _, _, _, _, _, _, _, _, _, _, _, _, _, _, _, _] V _ = _
  after_results_simp
  rw [h3]
  rfl

set_option maxHeartbeats 1000000 in

theorem ops2_head_main_v87 (V : Valuation τ sig (Elt F)) (x1 : (⟨S64512x32, .f32⟩ : BufTy).Contents (Elt F)) (x10 : (⟨S32x128, .f32⟩ : BufTy).Contents (Elt F)) (x11 : (⟨S128, .f32⟩ : BufTy).Contents (Elt F))
    (h7 : V (Proc.devRef .tc main_v7) = val_main_v7 (F := F) x1 x10 x11) :
    after ((ops2 (F := F)).take 42) V (Proc.devRef .tc main_v87) = val_main_v87 (F := F) x1 x10 x11 := by
  show after [_, _, _, _, _, _, _, _, _, _, _, _, _, _, _, _, _, _, _, _, _, _, _, _, _, _, _, _, _, _, _, _, _, _, _, _, _, _, _, _, _, _] V _ = _
  after_results_simp
  rw [h7]
  rfl

set_option maxHeartbeats 1000000 in

theorem ops2_head_main_v88 (V : Valuation τ sig (Elt F)) (x3 : (⟨S64512x4x64, .f32⟩ : BufTy).Contents (Elt F)) (x14 : (⟨S64x128, .f32⟩ : BufTy).Contents (Elt F)) (x15 : (⟨S128, .f32⟩ : BufTy).Contents (Elt F))
    (h19 : V (Proc.devRef .tc main_v19) = val_main_v19 (F := F) x3 x14 x15) :
    after ((ops2 (F := F)).take 42) V (Proc.devRef .tc main_v88) = val_main_v88 (F := F) x3 x14 x15 := by
  show after [_, _, _, _, _, _, _, _, _, _, _, _, _, _, _, _, _, _, _, _, _, _, _, _, _, _, _, _, _, _, _, _, _, _, _, _, _, _, _, _, _, _] V _ = _
  after_results_simp
  rw [h19]
  rfl

set_option maxHeartbeats 1000000 in

theorem ops2_head_main_v89 (V : Valuation τ sig (Elt F)) (x4 : (⟨S64512x4x64, .f32⟩ : BufTy).Contents (Elt F)) (x14 : (⟨S64x128, .f32⟩ : BufTy).Contents (Elt F)) (x15 : (⟨S128, .f32⟩ : BufTy).Contents (Elt F))
    (h24 : V (Proc.devRef .tc main_v24) = val_main_v24 (F := F) x4 x14 x15) :
    after ((ops2 (F := F)).take 42) V (Proc.devRef .tc main_v89) = val_main_v89 (F := F) x4 x14 x15 := by
  show after [_, _, _, _, _, _, _, _, _, _, _, _, _, _, _, _, _, _, _, _, _, _, _, _, _, _, _, _, _, _, _, _, _, _, _, _, _, _, _, _, _, _] V _ = _
  after_results_simp
  rw [h24]
  rfl

set_option maxHeartbeats 1000000 in

theorem ops2_head_main_v90 (V : Valuation τ sig (Elt F)) (x2 : (⟨S64512x1000, .f32⟩ : BufTy).Contents (Elt F)) (x5 : (⟨S64512, .f32⟩ : BufTy).Contents (Elt F)) (x12 : (⟨S1000x128, .f32⟩ : BufTy).Contents (Elt F)) (x13 : (⟨S128, .f32⟩ : BufTy).Contents (Elt F))
    (h14 : V (Proc.devRef .tc main_v14) = val_main_v14 (F := F) x2 x5 x12 x13) :
    after ((ops2 (F := F)).take 42) V (Proc.devRef .tc main_v90) = val_main_v90 (F := F) x2 x5 x12 x13 := by
  show after [_, _, _, _, _, _, _, _, _, _, _, _, _, _, _, _, _, _, _, _, _, _, _, _, _, _, _, _, _, _, _, _, _, _, _, _, _, _, _, _, _, _] V _ = _
  after_results_simp
  rw [h14]
  rfl

set_option maxHeartbeats 1000000 in

theorem ops2_head_main_v60 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hrep : V (Proc.devRef .tc main_v48) = val_main_v48 (F := F) x0 x1 x2 x3 x4 x5 x8 x9 x10 x11 x12 x13 x14 x15 x16 x17 x18 x19 x20 x21)
    (h25 : V (Proc.devRef .tc main_v25) = val_main_v25 (F := F) x6) :
    after ((ops2 (F := F)).take 42) V (Proc.devRef .tc main_v60) = val_main_v60 (F := F) x0 x1 x2 x3 x4 x5 x6 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hrep, h25]
  rfl

set_option maxHeartbeats 1000000 in

theorem ops2_head_main_v75 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hrep : V (Proc.devRef .tc main_v48) = val_main_v48 (F := F) x0 x1 x2 x3 x4 x5 x8 x9 x10 x11 x12 x13 x14 x15 x16 x17 x18 x19 x20 x21)
    (h26 : V (Proc.devRef .tc main_v26) = val_main_v26 (F := F) x7) :
    after ((ops2 (F := F)).take 42) V (Proc.devRef .tc main_v75) = val_main_v75 (F := F) x0 x1 x2 x3 x4 x5 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hrep, h26]
  rfl

set_option maxHeartbeats 1000000 in

theorem ops2_head_main_v65 (V : Valuation τ sig (Elt F)) (x6 : (⟨S64512, .i32⟩ : BufTy).Contents (Elt F))
    (hl : V (Proc.devRef .tc main_v27) = val_main_v27 (F := F))
    (h25 : V (Proc.devRef .tc main_v25) = val_main_v25 (F := F) x6) :
    after ((ops2 (F := F)).take 42) V (Proc.devRef .tc main_v65) = val_main_v65 (F := F) x6 := by
  show after [_, _, _, _, _, _, _, _, _, _, _, _, _, _, _, _, _, _, _, _, _, _, _, _, _, _, _, _, _, _, _, _, _, _, _, _, _, _, _, _, _, _] V _ = _
  after_results_simp
  rw [hl, h25]
  rfl

set_option maxHeartbeats 1000000 in

theorem ops2_head_main_v70 (V : Valuation τ sig (Elt F)) (x6 : (⟨S64512, .i32⟩ : BufTy).Contents (Elt F))
    (hr : V (Proc.devRef .tc main_v27) = val_main_v27 (F := F))
    (h25 : V (Proc.devRef .tc main_v25) = val_main_v25 (F := F) x6) :
    after ((ops2 (F := F)).take 42) V (Proc.devRef .tc main_v70) = val_main_v70 (F := F) x6 := by
  show after [_, _, _, _, _, _, _, _, _, _, _, _, _, _, _, _, _, _, _, _, _, _, _, _, _, _, _, _, _, _, _, _, _, _, _, _, _, _, _, _, _, _] V _ = _
  after_results_simp
  rw [hr, h25]
  rfl

set_option maxHeartbeats 1000000 in

theorem ops2_head_main_v80 (V : Valuation τ sig (Elt F)) (x7 : (⟨S64512, .i32⟩ : BufTy).Contents (Elt F))
    (hl : V (Proc.devRef .tc main_v27) = val_main_v27 (F := F))
    (h26 : V (Proc.devRef .tc main_v26) = val_main_v26 (F := F) x7) :
    after ((ops2 (F := F)).take 42) V (Proc.devRef .tc main_v80) = val_main_v80 (F := F) x7 := by
  show after [_, _, _, _, _, _, _, _, _, _, _, _, _, _, _, _, _, _, _, _, _, _, _, _, _, _, _, _, _, _, _, _, _, _, _, _, _, _, _, _, _, _] V _ = _
  after_results_simp
  rw [hl, h26]
  rfl

set_option maxHeartbeats 1000000 in

theorem ops2_head_main_v85 (V : Valuation τ sig (Elt F)) (x7 : (⟨S64512, .i32⟩ : BufTy).Contents (Elt F))
    (hr : V (Proc.devRef .tc main_v27) = val_main_v27 (F := F))
    (h26 : V (Proc.devRef .tc main_v26) = val_main_v26 (F := F) x7) :
    after ((ops2 (F := F)).take 42) V (Proc.devRef .tc main_v85) = val_main_v85 (F := F) x7 := by
  show after [_, _, _, _, _, _, _, _, _, _, _, _, _, _, _, _, _, _, _, _, _, _, _, _, _, _, _, _, _, _, _, _, _, _, _, _, _, _, _, _, _, _] V _ = _
  after_results_simp
  rw [hr, h26]
  rfl

theorem ops2_head_main_arg16 (V : Valuation τ sig (Elt F)) :
    after ((ops2 (F := F)).take 42) V (Proc.devRef .tc main_arg16) = V (Proc.devRef .tc main_arg16) := by
  show after [_, _, _, _, _, _, _, _, _, _, _, _, _, _, _, _, _, _, _, _, _, _, _, _, _, _, _, _, _, _, _, _, _, _, _, _, _, _, _, _, _, _] V _ = _
  after_results_simp

theorem ops2_head_main_arg17 (V : Valuation τ sig (Elt F)) :
    after ((ops2 (F := F)).take 42) V (Proc.devRef .tc main_arg17) = V (Proc.devRef .tc main_arg17) := by
  show after [_, _, _, _, _, _, _, _, _, _, _, _, _, _, _, _, _, _, _, _, _, _, _, _, _, _, _, _, _, _, _, _, _, _, _, _, _, _, _, _, _, _] V _ = _
  after_results_simp

theorem ops2_head_main_arg18 (V : Valuation τ sig (Elt F)) :
    after ((ops2 (F := F)).take 42) V (Proc.devRef .tc main_arg18) = V (Proc.devRef .tc main_arg18) := by
  show after [_, _, _, _, _, _, _, _, _, _, _, _, _, _, _, _, _, _, _, _, _, _, _, _, _, _, _, _, _, _, _, _, _, _, _, _, _, _, _, _, _, _] V _ = _
  after_results_simp

theorem ops2_head_main_arg19 (V : Valuation τ sig (Elt F)) :
    after ((ops2 (F := F)).take 42) V (Proc.devRef .tc main_arg19) = V (Proc.devRef .tc main_arg19) := by
  show after [_, _, _, _, _, _, _, _, _, _, _, _, _, _, _, _, _, _, _, _, _, _, _, _, _, _, _, _, _, _, _, _, _, _, _, _, _, _, _, _, _, _] V _ = _
  after_results_simp

theorem ops2_head_main_arg20 (V : Valuation τ sig (Elt F)) :
    after ((ops2 (F := F)).take 42) V (Proc.devRef .tc main_arg20) = V (Proc.devRef .tc main_arg20) := by
  show after [_, _, _, _, _, _, _, _, _, _, _, _, _, _, _, _, _, _, _, _, _, _, _, _, _, _, _, _, _, _, _, _, _, _, _, _, _, _, _, _, _, _] V _ = _
  after_results_simp

theorem ops2_head_main_arg21 (V : Valuation τ sig (Elt F)) :
    after ((ops2 (F := F)).take 42) V (Proc.devRef .tc main_arg21) = V (Proc.devRef .tc main_arg21) := by
  show after [_, _, _, _, _, _, _, _, _, _, _, _, _, _, _, _, _, _, _, _, _, _, _, _, _, _, _, _, _, _, _, _, _, _, _, _, _, _, _, _, _, _] V _ = _
  after_results_simp

set_option maxHeartbeats 4000000 in

theorem ops2_tail_main_v106 (W : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (e86 : W (Proc.devRef .tc main_v86) = val_main_v86 (F := F) x0 x8 x9)
    (e87 : W (Proc.devRef .tc main_v87) = val_main_v87 (F := F) x1 x10 x11)
    (e88 : W (Proc.devRef .tc main_v88) = val_main_v88 (F := F) x3 x14 x15)
    (e89 : W (Proc.devRef .tc main_v89) = val_main_v89 (F := F) x4 x14 x15)
    (e90 : W (Proc.devRef .tc main_v90) = val_main_v90 (F := F) x2 x5 x12 x13)
    (e60 : W (Proc.devRef .tc main_v60) = val_main_v60 (F := F) x0 x1 x2 x3 x4 x5 x6 x8 x9 x10 x11 x12 x13 x14 x15 x16 x17 x18 x19 x20 x21)
    (e75 : W (Proc.devRef .tc main_v75) = val_main_v75 (F := F) x0 x1 x2 x3 x4 x5 x7 x8 x9 x10 x11 x12 x13 x14 x15 x16 x17 x18 x19 x20 x21)
    (e65 : W (Proc.devRef .tc main_v65) = val_main_v65 (F := F) x6)
    (e70 : W (Proc.devRef .tc main_v70) = val_main_v70 (F := F) x6)
    (e80 : W (Proc.devRef .tc main_v80) = val_main_v80 (F := F) x7)
    (e85 : W (Proc.devRef .tc main_v85) = val_main_v85 (F := F) x7)
    (h16 : W (Proc.devRef .tc main_arg16) = x16)
    (h17 : W (Proc.devRef .tc main_arg17) = x17)
    (h18 : W (Proc.devRef .tc main_arg18) = x18)
    (h19a : W (Proc.devRef .tc main_arg19) = x19)
    (h20 : W (Proc.devRef .tc main_arg20) = x20)
    (h21 : W (Proc.devRef .tc main_arg21) = x21) :
    after ((ops2 (F := F)).drop 42) W (Proc.devRef .tc main_v106) = val_main_v106 (F := F) x0 x1 x2 x3 x4 x5 x6 x7 x8 x9 x10 x11 x12 x13 x14 x15 x16 x17 x18 x19 x20 x21 := by
  show after [_, _, _, _, _, _, _, _, _, _, _, _, _, _, _, _, _, _, _, _, _, _] W _ = _
  simp (disch := decide) only [after_cons, after_nil,
      nullary_result', unary_result', binary_result', reshape_result', nary_result',
      nullary_result_ne', unary_result_ne', binary_result_ne', reshape_result_ne', nary_result_ne', Matrix.cons_val]
  rw [e86, e87, e88, e89, e90, e60, e75, e65, e70, e80, e85, h16, h17, h18, h19a, h20, h21]
  rfl

theorem ops2_tail_main_v60 (W : Valuation τ sig (Elt F)) :
    after ((ops2 (F := F)).drop 42) W (Proc.devRef .tc main_v60) = W (Proc.devRef .tc main_v60) := by
  show after [_, _, _, _, _, _, _, _, _, _, _, _, _, _, _, _, _, _, _, _, _, _] W _ = _
  after_results_simp

theorem ops2_tail_main_v75 (W : Valuation τ sig (Elt F)) :
    after ((ops2 (F := F)).drop 42) W (Proc.devRef .tc main_v75) = W (Proc.devRef .tc main_v75) := by
  show after [_, _, _, _, _, _, _, _, _, _, _, _, _, _, _, _, _, _, _, _, _, _] W _ = _
  after_results_simp

end Stretch

theorem chunk2 (V : Valuation τ sig (Elt Ideal)) (x0 : (⟨S64512x32, .f32⟩ : BufTy).Contents (Elt Ideal)) (x1 : (⟨S64512x32, .f32⟩ : BufTy).Contents (Elt Ideal)) (x2 : (⟨S64512x1000, .f32⟩ : BufTy).Contents (Elt Ideal)) (x3 : (⟨S64512x4x64, .f32⟩ : BufTy).Contents (Elt Ideal)) (x4 : (⟨S64512x4x64, .f32⟩ : BufTy).Contents (Elt Ideal)) (x5 : (⟨S64512, .f32⟩ : BufTy).Contents (Elt Ideal)) (x6 : (⟨S64512, .i32⟩ : BufTy).Contents (Elt Ideal)) (x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal))
    (h3 : V (Proc.devRef .tc main_v3) = val_main_v3 (F := Ideal) x0 x8 x9)
    (h7 : V (Proc.devRef .tc main_v7) = val_main_v7 (F := Ideal) x1 x10 x11)
    (h19 : V (Proc.devRef .tc main_v19) = val_main_v19 (F := Ideal) x3 x14 x15)
    (h24 : V (Proc.devRef .tc main_v24) = val_main_v24 (F := Ideal) x4 x14 x15)
    (h14 : V (Proc.devRef .tc main_v14) = val_main_v14 (F := Ideal) x2 x5 x12 x13)
    (h25 : V (Proc.devRef .tc main_v25) = val_main_v25 (F := Ideal) x6)
    (h26 : V (Proc.devRef .tc main_v26) = val_main_v26 (F := Ideal) x7)
    (hrep : V (Proc.devRef .tc main_v48) = val_main_v48 (F := Ideal) x0 x1 x2 x3 x4 x5 x8 x9 x10 x11 x12 x13 x14 x15 x16 x17 x18 x19 x20 x21)
    (hl : V (Proc.devRef .tc main_v27) = val_main_v27 (F := Ideal))
    (hr : V (Proc.devRef .tc main_v27) = val_main_v27 (F := Ideal))
    (h16 : V (Proc.devRef .tc main_arg16) = x16)
    (h17 : V (Proc.devRef .tc main_arg17) = x17)
    (h18 : V (Proc.devRef .tc main_arg18) = x18)
    (h19a : V (Proc.devRef .tc main_arg19) = x19)
    (h20 : V (Proc.devRef .tc main_arg20) = x20)
    (h21 : V (Proc.devRef .tc main_arg21) = x21) :
    after (ops2 (F := Ideal)) V (Proc.devRef .tc main_v106) = val_main_v106 (F := Ideal) x0 x1 x2 x3 x4 x5 x6 x7 x8 x9 x10 x11 x12 x13 x14 x15 x16 x17 x18 x19 x20 x21 ∧
    after (ops2 (F := Ideal)) V (Proc.devRef .tc main_v60) = val_main_v60 (F := Ideal) x0 x1 x2 x3 x4 x5 x6 x8 x9 x10 x11 x12 x13 x14 x15 x16 x17 x18 x19 x20 x21 ∧
    after (ops2 (F := Ideal)) V (Proc.devRef .tc main_v75) = val_main_v75 (F := Ideal) x0 x1 x2 x3 x4 x5 x7 x8 x9 x10 x11 x12 x13 x14 x15 x16 x17 x18 x19 x20 x21 := by
  rw [ops2_cut V]
  exact ⟨ops2_tail_main_v106 _ x0 x1 x2 x3 x4 x5 x6 x7 x8 x9 x10 x11 x12 x13 x14 x15 x16 x17 x18 x19 x20 x21
      (ops2_head_main_v86 V x0 x8 x9 h3)
      (ops2_head_main_v87 V x1 x10 x11 h7)
      (ops2_head_main_v88 V x3 x14 x15 h19)
      (ops2_head_main_v89 V x4 x14 x15 h24)
      (ops2_head_main_v90 V x2 x5 x12 x13 h14)
      (ops2_head_main_v60 V x0 x1 x2 x3 x4 x5 x6 x8 x9 x10 x11 x12 x13 x14 x15 x16 x17 x18 x19 x20 x21 hrep h25)
      (ops2_head_main_v75 V x0 x1 x2 x3 x4 x5 x7 x8 x9 x10 x11 x12 x13 x14 x15 x16 x17 x18 x19 x20 x21 hrep h26)
      (ops2_head_main_v65 V x6 hl h25)
      (ops2_head_main_v70 V x6 hr h25)
      (ops2_head_main_v80 V x7 hl h26)
      (ops2_head_main_v85 V x7 hr h26)
      ((ops2_head_main_arg16 V).trans h16)
      ((ops2_head_main_arg17 V).trans h17)
      ((ops2_head_main_arg18 V).trans h18)
      ((ops2_head_main_arg19 V).trans h19a)
      ((ops2_head_main_arg20 V).trans h20)
      ((ops2_head_main_arg21 V).trans h21),
    (ops2_tail_main_v60 _).trans (ops2_head_main_v60 V x0 x1 x2 x3 x4 x5 x6 x8 x9 x10 x11 x12 x13 x14 x15 x16 x17 x18 x19 x20 x21 hrep h25),
    (ops2_tail_main_v75 _).trans (ops2_head_main_v75 V x0 x1 x2 x3 x4 x5 x7 x8 x9 x10 x11 x12 x13 x14 x15 x16 x17 x18 x19 x20 x21 hrep h26)⟩

end Cert.ReferenceIdeal.StagedRun
-- ==== Proof.RefChunk3.lean ====
import proofs.«410031_j84061099917532_3_alg».proof.Proof.RefOps
import proofs.«410031_j84061099917532_3_alg».proof.Proof.RefStages

set_option maxRecDepth 16384

namespace Cert.ReferenceIdeal.StagedRun

open Cert.ReferenceIdeal Cert.ReferenceIdeal.Gen Idealize.ShloMosaic Idealize.ShloMosaic.TcCoe Idealize.SL.Sem Idealize.ShloMosaic.StableHlo
open Cert.ReferenceIdeal.Stages

section Stretch

variable {F : FTy → Type} [FloatOps F]

theorem ops3_cut (V : Valuation τ sig (Elt F)) :
    after (ops3 (F := F)) V = after ((ops3 (F := F)).drop 42) (after ((ops3 (F := F)).take 42) V) := rfl

set_option maxHeartbeats 1000000 in

theorem ops3_head_main_v144 (V : Valuation τ sig (Elt F)) (x0 : (⟨S64512x32, .f32⟩ : BufTy).Contents (Elt F)) (x8 : (⟨S32x128, .f32⟩ : BufTy).Contents (Elt F)) (x9 : (⟨S128, .f32⟩ : BufTy).Contents (Elt F))
    (h3 : V (Proc.devRef .tc main_v3) = val_main_v3 (F := F) x0 x8 x9) :
    after ((ops3 (F := F)).take 42) V (Proc.devRef .tc main_v144) = val_main_v144 (F := F) x0 x8 x9 := by
  show after [_, _, _, _, _, _, _, _, _, _, _, _, _, _, _, _, _, _, _, _, _, _, _, _, _, _, _, _, _, _, _, _, _, _, _, _, _, _, _, _, _, _] V _ = _
  after_results_simp
  rw [h3]
  rfl

set_option maxHeartbeats 1000000 in

theorem ops3_head_main_v145 (V : Valuation τ sig (Elt F)) (x1 : (⟨S64512x32, .f32⟩ : BufTy).Contents (Elt F)) (x10 : (⟨S32x128, .f32⟩ : BufTy).Contents (Elt F)) (x11 : (⟨S128, .f32⟩ : BufTy).Contents (Elt F))
    (h7 : V (Proc.devRef .tc main_v7) = val_main_v7 (F := F) x1 x10 x11) :
    after ((ops3 (F := F)).take 42) V (Proc.devRef .tc main_v145) = val_main_v145 (F := F) x1 x10 x11 := by
  show after [_, _, _, _, _, _, _, _, _, _, _, _, _, _, _, _, _, _, _, _, _, _, _, _, _, _, _, _, _, _, _, _, _, _, _, _, _, _, _, _, _, _] V _ = _
  after_results_simp
  rw [h7]
  rfl

set_option maxHeartbeats 1000000 in

theorem ops3_head_main_v146 (V : Valuation τ sig (Elt F)) (x3 : (⟨S64512x4x64, .f32⟩ : BufTy).Contents (Elt F)) (x14 : (⟨S64x128, .f32⟩ : BufTy).Contents (Elt F)) (x15 : (⟨S128, .f32⟩ : BufTy).Contents (Elt F))
    (h19 : V (Proc.devRef .tc main_v19) = val_main_v19 (F := F) x3 x14 x15) :
    after ((ops3 (F := F)).take 42) V (Proc.devRef .tc main_v146) = val_main_v146 (F := F) x3 x14 x15 := by
  show after [_, _, _, _, _, _, _, _, _, _, _, _, _, _, _, _, _, _, _, _, _, _, _, _, _, _, _, _, _, _, _, _, _, _, _, _, _, _, _, _, _, _] V _ = _
  after_results_simp
  rw [h19]
  rfl

set_option maxHeartbeats 1000000 in

theorem ops3_head_main_v147 (V : Valuation τ sig (Elt F)) (x4 : (⟨S64512x4x64, .f32⟩ : BufTy).Contents (Elt F)) (x14 : (⟨S64x128, .f32⟩ : BufTy).Contents (Elt F)) (x15 : (⟨S128, .f32⟩ : BufTy).Contents (Elt F))
    (h24 : V (Proc.devRef .tc main_v24) = val_main_v24 (F := F) x4 x14 x15) :
    after ((ops3 (F := F)).take 42) V (Proc.devRef .tc main_v147) = val_main_v147 (F := F) x4 x14 x15 := by
  show after [_, _, _, _, _, _, _, _, _, _, _, _, _, _, _, _, _, _, _, _, _, _, _, _, _, _, _, _, _, _, _, _, _, _, _, _, _, _, _, _, _, _] V _ = _
  after_results_simp
  rw [h24]
  rfl

set_option maxHeartbeats 1000000 in

theorem ops3_head_main_v148 (V : Valuation τ sig (Elt F)) (x2 : (⟨S64512x1000, .f32⟩ : BufTy).Contents (Elt F)) (x5 : (⟨S64512, .f32⟩ : BufTy).Contents (Elt F)) (x12 : (⟨S1000x128, .f32⟩ : BufTy).Contents (Elt F)) (x13 : (⟨S128, .f32⟩ : BufTy).Contents (Elt F))
    (h14 : V (Proc.devRef .tc main_v14) = val_main_v14 (F := F) x2 x5 x12 x13) :
    after ((ops3 (F := F)).take 42) V (Proc.devRef .tc main_v148) = val_main_v148 (F := F) x2 x5 x12 x13 := by
  show after [_, _, _, _, _, _, _, _, _, _, _, _, _, _, _, _, _, _, _, _, _, _, _, _, _, _, _, _, _, _, _, _, _, _, _, _, _, _, _, _, _, _] V _ = _
  after_results_simp
  rw [h14]
  rfl

set_option maxHeartbeats 1000000 in

theorem ops3_head_main_v118 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hrep : V (Proc.devRef .tc main_v106) = val_main_v106 (F := F) x0 x1 x2 x3 x4 x5 x6 x7 x8 x9 x10 x11 x12 x13 x14 x15 x16 x17 x18 x19 x20 x21)
    (h25 : V (Proc.devRef .tc main_v25) = val_main_v25 (F := F) x6) :
    after ((ops3 (F := F)).take 42) V (Proc.devRef .tc main_v118) = val_main_v118 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hrep, h25]
  rfl

set_option maxHeartbeats 1000000 in

theorem ops3_head_main_v133 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hrep : V (Proc.devRef .tc main_v106) = val_main_v106 (F := F) x0 x1 x2 x3 x4 x5 x6 x7 x8 x9 x10 x11 x12 x13 x14 x15 x16 x17 x18 x19 x20 x21)
    (h26 : V (Proc.devRef .tc main_v26) = val_main_v26 (F := F) x7) :
    after ((ops3 (F := F)).take 42) V (Proc.devRef .tc main_v133) = val_main_v133 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hrep, h26]
  rfl

set_option maxHeartbeats 1000000 in

theorem ops3_head_main_v123 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hl : V (Proc.devRef .tc main_v60) = val_main_v60 (F := F) x0 x1 x2 x3 x4 x5 x6 x8 x9 x10 x11 x12 x13 x14 x15 x16 x17 x18 x19 x20 x21)
    (h25 : V (Proc.devRef .tc main_v25) = val_main_v25 (F := F) x6) :
    after ((ops3 (F := F)).take 42) V (Proc.devRef .tc main_v123) = val_main_v123 (F := F) x0 x1 x2 x3 x4 x5 x6 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hl, h25]
  rfl

set_option maxHeartbeats 1000000 in

theorem ops3_head_main_v128 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hr : V (Proc.devRef .tc main_v75) = val_main_v75 (F := F) x0 x1 x2 x3 x4 x5 x7 x8 x9 x10 x11 x12 x13 x14 x15 x16 x17 x18 x19 x20 x21)
    (h25 : V (Proc.devRef .tc main_v25) = val_main_v25 (F := F) x6) :
    after ((ops3 (F := F)).take 42) V (Proc.devRef .tc main_v128) = val_main_v128 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hr, h25]
  rfl

set_option maxHeartbeats 1000000 in

theorem ops3_head_main_v138 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hl : V (Proc.devRef .tc main_v60) = val_main_v60 (F := F) x0 x1 x2 x3 x4 x5 x6 x8 x9 x10 x11 x12 x13 x14 x15 x16 x17 x18 x19 x20 x21)
    (h26 : V (Proc.devRef .tc main_v26) = val_main_v26 (F := F) x7) :
    after ((ops3 (F := F)).take 42) V (Proc.devRef .tc main_v138) = val_main_v138 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hl, h26]
  rfl

set_option maxHeartbeats 1000000 in

theorem ops3_head_main_v143 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hr : V (Proc.devRef .tc main_v75) = val_main_v75 (F := F) x0 x1 x2 x3 x4 x5 x7 x8 x9 x10 x11 x12 x13 x14 x15 x16 x17 x18 x19 x20 x21)
    (h26 : V (Proc.devRef .tc main_v26) = val_main_v26 (F := F) x7) :
    after ((ops3 (F := F)).take 42) V (Proc.devRef .tc main_v143) = val_main_v143 (F := F) x0 x1 x2 x3 x4 x5 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hr, h26]
  rfl

theorem ops3_head_main_arg16 (V : Valuation τ sig (Elt F)) :
    after ((ops3 (F := F)).take 42) V (Proc.devRef .tc main_arg16) = V (Proc.devRef .tc main_arg16) := by
  show after [_, _, _, _, _, _, _, _, _, _, _, _, _, _, _, _, _, _, _, _, _, _, _, _, _, _, _, _, _, _, _, _, _, _, _, _, _, _, _, _, _, _] V _ = _
  after_results_simp

theorem ops3_head_main_arg17 (V : Valuation τ sig (Elt F)) :
    after ((ops3 (F := F)).take 42) V (Proc.devRef .tc main_arg17) = V (Proc.devRef .tc main_arg17) := by
  show after [_, _, _, _, _, _, _, _, _, _, _, _, _, _, _, _, _, _, _, _, _, _, _, _, _, _, _, _, _, _, _, _, _, _, _, _, _, _, _, _, _, _] V _ = _
  after_results_simp

theorem ops3_head_main_arg18 (V : Valuation τ sig (Elt F)) :
    after ((ops3 (F := F)).take 42) V (Proc.devRef .tc main_arg18) = V (Proc.devRef .tc main_arg18) := by
  show after [_, _, _, _, _, _, _, _, _, _, _, _, _, _, _, _, _, _, _, _, _, _, _, _, _, _, _, _, _, _, _, _, _, _, _, _, _, _, _, _, _, _] V _ = _
  after_results_simp

theorem ops3_head_main_arg19 (V : Valuation τ sig (Elt F)) :
    after ((ops3 (F := F)).take 42) V (Proc.devRef .tc main_arg19) = V (Proc.devRef .tc main_arg19) := by
  show after [_, _, _, _, _, _, _, _, _, _, _, _, _, _, _, _, _, _, _, _, _, _, _, _, _, _, _, _, _, _, _, _, _, _, _, _, _, _, _, _, _, _] V _ = _
  after_results_simp

theorem ops3_head_main_arg20 (V : Valuation τ sig (Elt F)) :
    after ((ops3 (F := F)).take 42) V (Proc.devRef .tc main_arg20) = V (Proc.devRef .tc main_arg20) := by
  show after [_, _, _, _, _, _, _, _, _, _, _, _, _, _, _, _, _, _, _, _, _, _, _, _, _, _, _, _, _, _, _, _, _, _, _, _, _, _, _, _, _, _] V _ = _
  after_results_simp

theorem ops3_head_main_arg21 (V : Valuation τ sig (Elt F)) :
    after ((ops3 (F := F)).take 42) V (Proc.devRef .tc main_arg21) = V (Proc.devRef .tc main_arg21) := by
  show after [_, _, _, _, _, _, _, _, _, _, _, _, _, _, _, _, _, _, _, _, _, _, _, _, _, _, _, _, _, _, _, _, _, _, _, _, _, _, _, _, _, _] V _ = _
  after_results_simp

set_option maxHeartbeats 4000000 in

theorem ops3_tail_main_v164 (W : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (e144 : W (Proc.devRef .tc main_v144) = val_main_v144 (F := F) x0 x8 x9)
    (e145 : W (Proc.devRef .tc main_v145) = val_main_v145 (F := F) x1 x10 x11)
    (e146 : W (Proc.devRef .tc main_v146) = val_main_v146 (F := F) x3 x14 x15)
    (e147 : W (Proc.devRef .tc main_v147) = val_main_v147 (F := F) x4 x14 x15)
    (e148 : W (Proc.devRef .tc main_v148) = val_main_v148 (F := F) x2 x5 x12 x13)
    (e118 : W (Proc.devRef .tc main_v118) = val_main_v118 (F := F) x0 x1 x2 x3 x4 x5 x6 x7 x8 x9 x10 x11 x12 x13 x14 x15 x16 x17 x18 x19 x20 x21)
    (e133 : W (Proc.devRef .tc main_v133) = val_main_v133 (F := F) x0 x1 x2 x3 x4 x5 x6 x7 x8 x9 x10 x11 x12 x13 x14 x15 x16 x17 x18 x19 x20 x21)
    (e123 : W (Proc.devRef .tc main_v123) = val_main_v123 (F := F) x0 x1 x2 x3 x4 x5 x6 x8 x9 x10 x11 x12 x13 x14 x15 x16 x17 x18 x19 x20 x21)
    (e128 : W (Proc.devRef .tc main_v128) = val_main_v128 (F := F) x0 x1 x2 x3 x4 x5 x6 x7 x8 x9 x10 x11 x12 x13 x14 x15 x16 x17 x18 x19 x20 x21)
    (e138 : W (Proc.devRef .tc main_v138) = val_main_v138 (F := F) x0 x1 x2 x3 x4 x5 x6 x7 x8 x9 x10 x11 x12 x13 x14 x15 x16 x17 x18 x19 x20 x21)
    (e143 : W (Proc.devRef .tc main_v143) = val_main_v143 (F := F) x0 x1 x2 x3 x4 x5 x7 x8 x9 x10 x11 x12 x13 x14 x15 x16 x17 x18 x19 x20 x21)
    (h16 : W (Proc.devRef .tc main_arg16) = x16)
    (h17 : W (Proc.devRef .tc main_arg17) = x17)
    (h18 : W (Proc.devRef .tc main_arg18) = x18)
    (h19a : W (Proc.devRef .tc main_arg19) = x19)
    (h20 : W (Proc.devRef .tc main_arg20) = x20)
    (h21 : W (Proc.devRef .tc main_arg21) = x21) :
    after ((ops3 (F := F)).drop 42) W (Proc.devRef .tc main_v164) = val_main_v164 (F := F) x0 x1 x2 x3 x4 x5 x6 x7 x8 x9 x10 x11 x12 x13 x14 x15 x16 x17 x18 x19 x20 x21 := by
  show after [_, _, _, _, _, _, _, _, _, _, _, _, _, _, _, _, _, _, _, _, _, _] W _ = _
  simp (disch := decide) only [after_cons, after_nil,
      nullary_result', unary_result', binary_result', reshape_result', nary_result',
      nullary_result_ne', unary_result_ne', binary_result_ne', reshape_result_ne', nary_result_ne', Matrix.cons_val]
  rw [e144, e145, e146, e147, e148, e118, e133, e123, e128, e138, e143, h16, h17, h18, h19a, h20, h21]
  rfl

theorem ops3_tail_main_v118 (W : Valuation τ sig (Elt F)) :
    after ((ops3 (F := F)).drop 42) W (Proc.devRef .tc main_v118) = W (Proc.devRef .tc main_v118) := by
  show after [_, _, _, _, _, _, _, _, _, _, _, _, _, _, _, _, _, _, _, _, _, _] W _ = _
  after_results_simp

theorem ops3_tail_main_v133 (W : Valuation τ sig (Elt F)) :
    after ((ops3 (F := F)).drop 42) W (Proc.devRef .tc main_v133) = W (Proc.devRef .tc main_v133) := by
  show after [_, _, _, _, _, _, _, _, _, _, _, _, _, _, _, _, _, _, _, _, _, _] W _ = _
  after_results_simp

end Stretch

theorem chunk3 (V : Valuation τ sig (Elt Ideal)) (x0 : (⟨S64512x32, .f32⟩ : BufTy).Contents (Elt Ideal)) (x1 : (⟨S64512x32, .f32⟩ : BufTy).Contents (Elt Ideal)) (x2 : (⟨S64512x1000, .f32⟩ : BufTy).Contents (Elt Ideal)) (x3 : (⟨S64512x4x64, .f32⟩ : BufTy).Contents (Elt Ideal)) (x4 : (⟨S64512x4x64, .f32⟩ : BufTy).Contents (Elt Ideal)) (x5 : (⟨S64512, .f32⟩ : BufTy).Contents (Elt Ideal)) (x6 : (⟨S64512, .i32⟩ : BufTy).Contents (Elt Ideal)) (x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal))
    (h3 : V (Proc.devRef .tc main_v3) = val_main_v3 (F := Ideal) x0 x8 x9)
    (h7 : V (Proc.devRef .tc main_v7) = val_main_v7 (F := Ideal) x1 x10 x11)
    (h19 : V (Proc.devRef .tc main_v19) = val_main_v19 (F := Ideal) x3 x14 x15)
    (h24 : V (Proc.devRef .tc main_v24) = val_main_v24 (F := Ideal) x4 x14 x15)
    (h14 : V (Proc.devRef .tc main_v14) = val_main_v14 (F := Ideal) x2 x5 x12 x13)
    (h25 : V (Proc.devRef .tc main_v25) = val_main_v25 (F := Ideal) x6)
    (h26 : V (Proc.devRef .tc main_v26) = val_main_v26 (F := Ideal) x7)
    (hrep : V (Proc.devRef .tc main_v106) = val_main_v106 (F := Ideal) x0 x1 x2 x3 x4 x5 x6 x7 x8 x9 x10 x11 x12 x13 x14 x15 x16 x17 x18 x19 x20 x21)
    (hl : V (Proc.devRef .tc main_v60) = val_main_v60 (F := Ideal) x0 x1 x2 x3 x4 x5 x6 x8 x9 x10 x11 x12 x13 x14 x15 x16 x17 x18 x19 x20 x21)
    (hr : V (Proc.devRef .tc main_v75) = val_main_v75 (F := Ideal) x0 x1 x2 x3 x4 x5 x7 x8 x9 x10 x11 x12 x13 x14 x15 x16 x17 x18 x19 x20 x21)
    (h16 : V (Proc.devRef .tc main_arg16) = x16)
    (h17 : V (Proc.devRef .tc main_arg17) = x17)
    (h18 : V (Proc.devRef .tc main_arg18) = x18)
    (h19a : V (Proc.devRef .tc main_arg19) = x19)
    (h20 : V (Proc.devRef .tc main_arg20) = x20)
    (h21 : V (Proc.devRef .tc main_arg21) = x21) :
    after (ops3 (F := Ideal)) V (Proc.devRef .tc main_v164) = val_main_v164 (F := Ideal) x0 x1 x2 x3 x4 x5 x6 x7 x8 x9 x10 x11 x12 x13 x14 x15 x16 x17 x18 x19 x20 x21 ∧
    after (ops3 (F := Ideal)) V (Proc.devRef .tc main_v118) = val_main_v118 (F := Ideal) x0 x1 x2 x3 x4 x5 x6 x7 x8 x9 x10 x11 x12 x13 x14 x15 x16 x17 x18 x19 x20 x21 ∧
    after (ops3 (F := Ideal)) V (Proc.devRef .tc main_v133) = val_main_v133 (F := Ideal) x0 x1 x2 x3 x4 x5 x6 x7 x8 x9 x10 x11 x12 x13 x14 x15 x16 x17 x18 x19 x20 x21 := by
  rw [ops3_cut V]
  exact ⟨ops3_tail_main_v164 _ x0 x1 x2 x3 x4 x5 x6 x7 x8 x9 x10 x11 x12 x13 x14 x15 x16 x17 x18 x19 x20 x21
      (ops3_head_main_v144 V x0 x8 x9 h3)
      (ops3_head_main_v145 V x1 x10 x11 h7)
      (ops3_head_main_v146 V x3 x14 x15 h19)
      (ops3_head_main_v147 V x4 x14 x15 h24)
      (ops3_head_main_v148 V x2 x5 x12 x13 h14)
      (ops3_head_main_v118 V x0 x1 x2 x3 x4 x5 x6 x7 x8 x9 x10 x11 x12 x13 x14 x15 x16 x17 x18 x19 x20 x21 hrep h25)
      (ops3_head_main_v133 V x0 x1 x2 x3 x4 x5 x6 x7 x8 x9 x10 x11 x12 x13 x14 x15 x16 x17 x18 x19 x20 x21 hrep h26)
      (ops3_head_main_v123 V x0 x1 x2 x3 x4 x5 x6 x8 x9 x10 x11 x12 x13 x14 x15 x16 x17 x18 x19 x20 x21 hl h25)
      (ops3_head_main_v128 V x0 x1 x2 x3 x4 x5 x6 x7 x8 x9 x10 x11 x12 x13 x14 x15 x16 x17 x18 x19 x20 x21 hr h25)
      (ops3_head_main_v138 V x0 x1 x2 x3 x4 x5 x6 x7 x8 x9 x10 x11 x12 x13 x14 x15 x16 x17 x18 x19 x20 x21 hl h26)
      (ops3_head_main_v143 V x0 x1 x2 x3 x4 x5 x7 x8 x9 x10 x11 x12 x13 x14 x15 x16 x17 x18 x19 x20 x21 hr h26)
      ((ops3_head_main_arg16 V).trans h16)
      ((ops3_head_main_arg17 V).trans h17)
      ((ops3_head_main_arg18 V).trans h18)
      ((ops3_head_main_arg19 V).trans h19a)
      ((ops3_head_main_arg20 V).trans h20)
      ((ops3_head_main_arg21 V).trans h21),
    (ops3_tail_main_v118 _).trans (ops3_head_main_v118 V x0 x1 x2 x3 x4 x5 x6 x7 x8 x9 x10 x11 x12 x13 x14 x15 x16 x17 x18 x19 x20 x21 hrep h25),
    (ops3_tail_main_v133 _).trans (ops3_head_main_v133 V x0 x1 x2 x3 x4 x5 x6 x7 x8 x9 x10 x11 x12 x13 x14 x15 x16 x17 x18 x19 x20 x21 hrep h26)⟩

end Cert.ReferenceIdeal.StagedRun
-- ==== Proof.RefChunk4.lean ====
import proofs.«410031_j84061099917532_3_alg».proof.Proof.RefOps
import proofs.«410031_j84061099917532_3_alg».proof.Proof.RefStages

set_option maxRecDepth 16384

namespace Cert.ReferenceIdeal.StagedRun

open Cert.ReferenceIdeal Cert.ReferenceIdeal.Gen Idealize.ShloMosaic Idealize.ShloMosaic.TcCoe Idealize.SL.Sem Idealize.ShloMosaic.StableHlo
open Cert.ReferenceIdeal.Stages

section Stretch

variable {F : FTy → Type} [FloatOps F]

theorem ops4_cut (V : Valuation τ sig (Elt F)) :
    after (ops4 (F := F)) V = after ((ops4 (F := F)).drop 42) (after ((ops4 (F := F)).take 42) V) := rfl

set_option maxHeartbeats 1000000 in

theorem ops4_head_main_v202 (V : Valuation τ sig (Elt F)) (x0 : (⟨S64512x32, .f32⟩ : BufTy).Contents (Elt F)) (x8 : (⟨S32x128, .f32⟩ : BufTy).Contents (Elt F)) (x9 : (⟨S128, .f32⟩ : BufTy).Contents (Elt F))
    (h3 : V (Proc.devRef .tc main_v3) = val_main_v3 (F := F) x0 x8 x9) :
    after ((ops4 (F := F)).take 42) V (Proc.devRef .tc main_v202) = val_main_v202 (F := F) x0 x8 x9 := by
  show after [_, _, _, _, _, _, _, _, _, _, _, _, _, _, _, _, _, _, _, _, _, _, _, _, _, _, _, _, _, _, _, _, _, _, _, _, _, _, _, _, _, _] V _ = _
  after_results_simp
  rw [h3]
  rfl

set_option maxHeartbeats 1000000 in

theorem ops4_head_main_v203 (V : Valuation τ sig (Elt F)) (x1 : (⟨S64512x32, .f32⟩ : BufTy).Contents (Elt F)) (x10 : (⟨S32x128, .f32⟩ : BufTy).Contents (Elt F)) (x11 : (⟨S128, .f32⟩ : BufTy).Contents (Elt F))
    (h7 : V (Proc.devRef .tc main_v7) = val_main_v7 (F := F) x1 x10 x11) :
    after ((ops4 (F := F)).take 42) V (Proc.devRef .tc main_v203) = val_main_v203 (F := F) x1 x10 x11 := by
  show after [_, _, _, _, _, _, _, _, _, _, _, _, _, _, _, _, _, _, _, _, _, _, _, _, _, _, _, _, _, _, _, _, _, _, _, _, _, _, _, _, _, _] V _ = _
  after_results_simp
  rw [h7]
  rfl

set_option maxHeartbeats 1000000 in

theorem ops4_head_main_v204 (V : Valuation τ sig (Elt F)) (x3 : (⟨S64512x4x64, .f32⟩ : BufTy).Contents (Elt F)) (x14 : (⟨S64x128, .f32⟩ : BufTy).Contents (Elt F)) (x15 : (⟨S128, .f32⟩ : BufTy).Contents (Elt F))
    (h19 : V (Proc.devRef .tc main_v19) = val_main_v19 (F := F) x3 x14 x15) :
    after ((ops4 (F := F)).take 42) V (Proc.devRef .tc main_v204) = val_main_v204 (F := F) x3 x14 x15 := by
  show after [_, _, _, _, _, _, _, _, _, _, _, _, _, _, _, _, _, _, _, _, _, _, _, _, _, _, _, _, _, _, _, _, _, _, _, _, _, _, _, _, _, _] V _ = _
  after_results_simp
  rw [h19]
  rfl

set_option maxHeartbeats 1000000 in

theorem ops4_head_main_v205 (V : Valuation τ sig (Elt F)) (x4 : (⟨S64512x4x64, .f32⟩ : BufTy).Contents (Elt F)) (x14 : (⟨S64x128, .f32⟩ : BufTy).Contents (Elt F)) (x15 : (⟨S128, .f32⟩ : BufTy).Contents (Elt F))
    (h24 : V (Proc.devRef .tc main_v24) = val_main_v24 (F := F) x4 x14 x15) :
    after ((ops4 (F := F)).take 42) V (Proc.devRef .tc main_v205) = val_main_v205 (F := F) x4 x14 x15 := by
  show after [_, _, _, _, _, _, _, _, _, _, _, _, _, _, _, _, _, _, _, _, _, _, _, _, _, _, _, _, _, _, _, _, _, _, _, _, _, _, _, _, _, _] V _ = _
  after_results_simp
  rw [h24]
  rfl

set_option maxHeartbeats 1000000 in

theorem ops4_head_main_v206 (V : Valuation τ sig (Elt F)) (x2 : (⟨S64512x1000, .f32⟩ : BufTy).Contents (Elt F)) (x5 : (⟨S64512, .f32⟩ : BufTy).Contents (Elt F)) (x12 : (⟨S1000x128, .f32⟩ : BufTy).Contents (Elt F)) (x13 : (⟨S128, .f32⟩ : BufTy).Contents (Elt F))
    (h14 : V (Proc.devRef .tc main_v14) = val_main_v14 (F := F) x2 x5 x12 x13) :
    after ((ops4 (F := F)).take 42) V (Proc.devRef .tc main_v206) = val_main_v206 (F := F) x2 x5 x12 x13 := by
  show after [_, _, _, _, _, _, _, _, _, _, _, _, _, _, _, _, _, _, _, _, _, _, _, _, _, _, _, _, _, _, _, _, _, _, _, _, _, _, _, _, _, _] V _ = _
  after_results_simp
  rw [h14]
  rfl

set_option maxHeartbeats 1000000 in

theorem ops4_head_main_v176 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hrep : V (Proc.devRef .tc main_v164) = val_main_v164 (F := F) x0 x1 x2 x3 x4 x5 x6 x7 x8 x9 x10 x11 x12 x13 x14 x15 x16 x17 x18 x19 x20 x21)
    (h25 : V (Proc.devRef .tc main_v25) = val_main_v25 (F := F) x6) :
    after ((ops4 (F := F)).take 42) V (Proc.devRef .tc main_v176) = val_main_v176 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hrep, h25]
  rfl

set_option maxHeartbeats 1000000 in

theorem ops4_head_main_v191 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hrep : V (Proc.devRef .tc main_v164) = val_main_v164 (F := F) x0 x1 x2 x3 x4 x5 x6 x7 x8 x9 x10 x11 x12 x13 x14 x15 x16 x17 x18 x19 x20 x21)
    (h26 : V (Proc.devRef .tc main_v26) = val_main_v26 (F := F) x7) :
    after ((ops4 (F := F)).take 42) V (Proc.devRef .tc main_v191) = val_main_v191 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hrep, h26]
  rfl

set_option maxHeartbeats 1000000 in

theorem ops4_head_main_v181 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hl : V (Proc.devRef .tc main_v118) = val_main_v118 (F := F) x0 x1 x2 x3 x4 x5 x6 x7 x8 x9 x10 x11 x12 x13 x14 x15 x16 x17 x18 x19 x20 x21)
    (h25 : V (Proc.devRef .tc main_v25) = val_main_v25 (F := F) x6) :
    after ((ops4 (F := F)).take 42) V (Proc.devRef .tc main_v181) = val_main_v181 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hl, h25]
  rfl

set_option maxHeartbeats 1000000 in

theorem ops4_head_main_v186 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hr : V (Proc.devRef .tc main_v133) = val_main_v133 (F := F) x0 x1 x2 x3 x4 x5 x6 x7 x8 x9 x10 x11 x12 x13 x14 x15 x16 x17 x18 x19 x20 x21)
    (h25 : V (Proc.devRef .tc main_v25) = val_main_v25 (F := F) x6) :
    after ((ops4 (F := F)).take 42) V (Proc.devRef .tc main_v186) = val_main_v186 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hr, h25]
  rfl

set_option maxHeartbeats 1000000 in

theorem ops4_head_main_v196 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hl : V (Proc.devRef .tc main_v118) = val_main_v118 (F := F) x0 x1 x2 x3 x4 x5 x6 x7 x8 x9 x10 x11 x12 x13 x14 x15 x16 x17 x18 x19 x20 x21)
    (h26 : V (Proc.devRef .tc main_v26) = val_main_v26 (F := F) x7) :
    after ((ops4 (F := F)).take 42) V (Proc.devRef .tc main_v196) = val_main_v196 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hl, h26]
  rfl

set_option maxHeartbeats 1000000 in

theorem ops4_head_main_v201 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hr : V (Proc.devRef .tc main_v133) = val_main_v133 (F := F) x0 x1 x2 x3 x4 x5 x6 x7 x8 x9 x10 x11 x12 x13 x14 x15 x16 x17 x18 x19 x20 x21)
    (h26 : V (Proc.devRef .tc main_v26) = val_main_v26 (F := F) x7) :
    after ((ops4 (F := F)).take 42) V (Proc.devRef .tc main_v201) = val_main_v201 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hr, h26]
  rfl

theorem ops4_head_main_arg16 (V : Valuation τ sig (Elt F)) :
    after ((ops4 (F := F)).take 42) V (Proc.devRef .tc main_arg16) = V (Proc.devRef .tc main_arg16) := by
  show after [_, _, _, _, _, _, _, _, _, _, _, _, _, _, _, _, _, _, _, _, _, _, _, _, _, _, _, _, _, _, _, _, _, _, _, _, _, _, _, _, _, _] V _ = _
  after_results_simp

theorem ops4_head_main_arg17 (V : Valuation τ sig (Elt F)) :
    after ((ops4 (F := F)).take 42) V (Proc.devRef .tc main_arg17) = V (Proc.devRef .tc main_arg17) := by
  show after [_, _, _, _, _, _, _, _, _, _, _, _, _, _, _, _, _, _, _, _, _, _, _, _, _, _, _, _, _, _, _, _, _, _, _, _, _, _, _, _, _, _] V _ = _
  after_results_simp

theorem ops4_head_main_arg18 (V : Valuation τ sig (Elt F)) :
    after ((ops4 (F := F)).take 42) V (Proc.devRef .tc main_arg18) = V (Proc.devRef .tc main_arg18) := by
  show after [_, _, _, _, _, _, _, _, _, _, _, _, _, _, _, _, _, _, _, _, _, _, _, _, _, _, _, _, _, _, _, _, _, _, _, _, _, _, _, _, _, _] V _ = _
  after_results_simp

theorem ops4_head_main_arg19 (V : Valuation τ sig (Elt F)) :
    after ((ops4 (F := F)).take 42) V (Proc.devRef .tc main_arg19) = V (Proc.devRef .tc main_arg19) := by
  show after [_, _, _, _, _, _, _, _, _, _, _, _, _, _, _, _, _, _, _, _, _, _, _, _, _, _, _, _, _, _, _, _, _, _, _, _, _, _, _, _, _, _] V _ = _
  after_results_simp

theorem ops4_head_main_arg20 (V : Valuation τ sig (Elt F)) :
    after ((ops4 (F := F)).take 42) V (Proc.devRef .tc main_arg20) = V (Proc.devRef .tc main_arg20) := by
  show after [_, _, _, _, _, _, _, _, _, _, _, _, _, _, _, _, _, _, _, _, _, _, _, _, _, _, _, _, _, _, _, _, _, _, _, _, _, _, _, _, _, _] V _ = _
  after_results_simp

theorem ops4_head_main_arg21 (V : Valuation τ sig (Elt F)) :
    after ((ops4 (F := F)).take 42) V (Proc.devRef .tc main_arg21) = V (Proc.devRef .tc main_arg21) := by
  show after [_, _, _, _, _, _, _, _, _, _, _, _, _, _, _, _, _, _, _, _, _, _, _, _, _, _, _, _, _, _, _, _, _, _, _, _, _, _, _, _, _, _] V _ = _
  after_results_simp

set_option maxHeartbeats 4000000 in

theorem ops4_tail_main_v222 (W : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (e202 : W (Proc.devRef .tc main_v202) = val_main_v202 (F := F) x0 x8 x9)
    (e203 : W (Proc.devRef .tc main_v203) = val_main_v203 (F := F) x1 x10 x11)
    (e204 : W (Proc.devRef .tc main_v204) = val_main_v204 (F := F) x3 x14 x15)
    (e205 : W (Proc.devRef .tc main_v205) = val_main_v205 (F := F) x4 x14 x15)
    (e206 : W (Proc.devRef .tc main_v206) = val_main_v206 (F := F) x2 x5 x12 x13)
    (e176 : W (Proc.devRef .tc main_v176) = val_main_v176 (F := F) x0 x1 x2 x3 x4 x5 x6 x7 x8 x9 x10 x11 x12 x13 x14 x15 x16 x17 x18 x19 x20 x21)
    (e191 : W (Proc.devRef .tc main_v191) = val_main_v191 (F := F) x0 x1 x2 x3 x4 x5 x6 x7 x8 x9 x10 x11 x12 x13 x14 x15 x16 x17 x18 x19 x20 x21)
    (e181 : W (Proc.devRef .tc main_v181) = val_main_v181 (F := F) x0 x1 x2 x3 x4 x5 x6 x7 x8 x9 x10 x11 x12 x13 x14 x15 x16 x17 x18 x19 x20 x21)
    (e186 : W (Proc.devRef .tc main_v186) = val_main_v186 (F := F) x0 x1 x2 x3 x4 x5 x6 x7 x8 x9 x10 x11 x12 x13 x14 x15 x16 x17 x18 x19 x20 x21)
    (e196 : W (Proc.devRef .tc main_v196) = val_main_v196 (F := F) x0 x1 x2 x3 x4 x5 x6 x7 x8 x9 x10 x11 x12 x13 x14 x15 x16 x17 x18 x19 x20 x21)
    (e201 : W (Proc.devRef .tc main_v201) = val_main_v201 (F := F) x0 x1 x2 x3 x4 x5 x6 x7 x8 x9 x10 x11 x12 x13 x14 x15 x16 x17 x18 x19 x20 x21)
    (h16 : W (Proc.devRef .tc main_arg16) = x16)
    (h17 : W (Proc.devRef .tc main_arg17) = x17)
    (h18 : W (Proc.devRef .tc main_arg18) = x18)
    (h19a : W (Proc.devRef .tc main_arg19) = x19)
    (h20 : W (Proc.devRef .tc main_arg20) = x20)
    (h21 : W (Proc.devRef .tc main_arg21) = x21) :
    after ((ops4 (F := F)).drop 42) W (Proc.devRef .tc main_v222) = val_main_v222 (F := F) x0 x1 x2 x3 x4 x5 x6 x7 x8 x9 x10 x11 x12 x13 x14 x15 x16 x17 x18 x19 x20 x21 := by
  show after [_, _, _, _, _, _, _, _, _, _, _, _, _, _, _, _, _, _, _, _, _, _] W _ = _
  simp (disch := decide) only [after_cons, after_nil,
      nullary_result', unary_result', binary_result', reshape_result', nary_result',
      nullary_result_ne', unary_result_ne', binary_result_ne', reshape_result_ne', nary_result_ne', Matrix.cons_val]
  rw [e202, e203, e204, e205, e206, e176, e191, e181, e186, e196, e201, h16, h17, h18, h19a, h20, h21]
  rfl

theorem ops4_tail_main_v176 (W : Valuation τ sig (Elt F)) :
    after ((ops4 (F := F)).drop 42) W (Proc.devRef .tc main_v176) = W (Proc.devRef .tc main_v176) := by
  show after [_, _, _, _, _, _, _, _, _, _, _, _, _, _, _, _, _, _, _, _, _, _] W _ = _
  after_results_simp

theorem ops4_tail_main_v191 (W : Valuation τ sig (Elt F)) :
    after ((ops4 (F := F)).drop 42) W (Proc.devRef .tc main_v191) = W (Proc.devRef .tc main_v191) := by
  show after [_, _, _, _, _, _, _, _, _, _, _, _, _, _, _, _, _, _, _, _, _, _] W _ = _
  after_results_simp

end Stretch

theorem chunk4 (V : Valuation τ sig (Elt Ideal)) (x0 : (⟨S64512x32, .f32⟩ : BufTy).Contents (Elt Ideal)) (x1 : (⟨S64512x32, .f32⟩ : BufTy).Contents (Elt Ideal)) (x2 : (⟨S64512x1000, .f32⟩ : BufTy).Contents (Elt Ideal)) (x3 : (⟨S64512x4x64, .f32⟩ : BufTy).Contents (Elt Ideal)) (x4 : (⟨S64512x4x64, .f32⟩ : BufTy).Contents (Elt Ideal)) (x5 : (⟨S64512, .f32⟩ : BufTy).Contents (Elt Ideal)) (x6 : (⟨S64512, .i32⟩ : BufTy).Contents (Elt Ideal)) (x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal))
    (h3 : V (Proc.devRef .tc main_v3) = val_main_v3 (F := Ideal) x0 x8 x9)
    (h7 : V (Proc.devRef .tc main_v7) = val_main_v7 (F := Ideal) x1 x10 x11)
    (h19 : V (Proc.devRef .tc main_v19) = val_main_v19 (F := Ideal) x3 x14 x15)
    (h24 : V (Proc.devRef .tc main_v24) = val_main_v24 (F := Ideal) x4 x14 x15)
    (h14 : V (Proc.devRef .tc main_v14) = val_main_v14 (F := Ideal) x2 x5 x12 x13)
    (h25 : V (Proc.devRef .tc main_v25) = val_main_v25 (F := Ideal) x6)
    (h26 : V (Proc.devRef .tc main_v26) = val_main_v26 (F := Ideal) x7)
    (hrep : V (Proc.devRef .tc main_v164) = val_main_v164 (F := Ideal) x0 x1 x2 x3 x4 x5 x6 x7 x8 x9 x10 x11 x12 x13 x14 x15 x16 x17 x18 x19 x20 x21)
    (hl : V (Proc.devRef .tc main_v118) = val_main_v118 (F := Ideal) x0 x1 x2 x3 x4 x5 x6 x7 x8 x9 x10 x11 x12 x13 x14 x15 x16 x17 x18 x19 x20 x21)
    (hr : V (Proc.devRef .tc main_v133) = val_main_v133 (F := Ideal) x0 x1 x2 x3 x4 x5 x6 x7 x8 x9 x10 x11 x12 x13 x14 x15 x16 x17 x18 x19 x20 x21)
    (h16 : V (Proc.devRef .tc main_arg16) = x16)
    (h17 : V (Proc.devRef .tc main_arg17) = x17)
    (h18 : V (Proc.devRef .tc main_arg18) = x18)
    (h19a : V (Proc.devRef .tc main_arg19) = x19)
    (h20 : V (Proc.devRef .tc main_arg20) = x20)
    (h21 : V (Proc.devRef .tc main_arg21) = x21) :
    after (ops4 (F := Ideal)) V (Proc.devRef .tc main_v222) = val_main_v222 (F := Ideal) x0 x1 x2 x3 x4 x5 x6 x7 x8 x9 x10 x11 x12 x13 x14 x15 x16 x17 x18 x19 x20 x21 ∧
    after (ops4 (F := Ideal)) V (Proc.devRef .tc main_v176) = val_main_v176 (F := Ideal) x0 x1 x2 x3 x4 x5 x6 x7 x8 x9 x10 x11 x12 x13 x14 x15 x16 x17 x18 x19 x20 x21 ∧
    after (ops4 (F := Ideal)) V (Proc.devRef .tc main_v191) = val_main_v191 (F := Ideal) x0 x1 x2 x3 x4 x5 x6 x7 x8 x9 x10 x11 x12 x13 x14 x15 x16 x17 x18 x19 x20 x21 := by
  rw [ops4_cut V]
  exact ⟨ops4_tail_main_v222 _ x0 x1 x2 x3 x4 x5 x6 x7 x8 x9 x10 x11 x12 x13 x14 x15 x16 x17 x18 x19 x20 x21
      (ops4_head_main_v202 V x0 x8 x9 h3)
      (ops4_head_main_v203 V x1 x10 x11 h7)
      (ops4_head_main_v204 V x3 x14 x15 h19)
      (ops4_head_main_v205 V x4 x14 x15 h24)
      (ops4_head_main_v206 V x2 x5 x12 x13 h14)
      (ops4_head_main_v176 V x0 x1 x2 x3 x4 x5 x6 x7 x8 x9 x10 x11 x12 x13 x14 x15 x16 x17 x18 x19 x20 x21 hrep h25)
      (ops4_head_main_v191 V x0 x1 x2 x3 x4 x5 x6 x7 x8 x9 x10 x11 x12 x13 x14 x15 x16 x17 x18 x19 x20 x21 hrep h26)
      (ops4_head_main_v181 V x0 x1 x2 x3 x4 x5 x6 x7 x8 x9 x10 x11 x12 x13 x14 x15 x16 x17 x18 x19 x20 x21 hl h25)
      (ops4_head_main_v186 V x0 x1 x2 x3 x4 x5 x6 x7 x8 x9 x10 x11 x12 x13 x14 x15 x16 x17 x18 x19 x20 x21 hr h25)
      (ops4_head_main_v196 V x0 x1 x2 x3 x4 x5 x6 x7 x8 x9 x10 x11 x12 x13 x14 x15 x16 x17 x18 x19 x20 x21 hl h26)
      (ops4_head_main_v201 V x0 x1 x2 x3 x4 x5 x6 x7 x8 x9 x10 x11 x12 x13 x14 x15 x16 x17 x18 x19 x20 x21 hr h26)
      ((ops4_head_main_arg16 V).trans h16)
      ((ops4_head_main_arg17 V).trans h17)
      ((ops4_head_main_arg18 V).trans h18)
      ((ops4_head_main_arg19 V).trans h19a)
      ((ops4_head_main_arg20 V).trans h20)
      ((ops4_head_main_arg21 V).trans h21),
    (ops4_tail_main_v176 _).trans (ops4_head_main_v176 V x0 x1 x2 x3 x4 x5 x6 x7 x8 x9 x10 x11 x12 x13 x14 x15 x16 x17 x18 x19 x20 x21 hrep h25),
    (ops4_tail_main_v191 _).trans (ops4_head_main_v191 V x0 x1 x2 x3 x4 x5 x6 x7 x8 x9 x10 x11 x12 x13 x14 x15 x16 x17 x18 x19 x20 x21 hrep h26)⟩

end Cert.ReferenceIdeal.StagedRun
-- ==== Proof.RefChunk5.lean ====
import proofs.«410031_j84061099917532_3_alg».proof.Proof.RefOps
import proofs.«410031_j84061099917532_3_alg».proof.Proof.RefStages

set_option maxRecDepth 16384

namespace Cert.ReferenceIdeal.StagedRun

open Cert.ReferenceIdeal Cert.ReferenceIdeal.Gen Idealize.ShloMosaic Idealize.ShloMosaic.TcCoe Idealize.SL.Sem Idealize.ShloMosaic.StableHlo
open Cert.ReferenceIdeal.Stages

section Stretch

variable {F : FTy → Type} [FloatOps F]

theorem ops5_cut (V : Valuation τ sig (Elt F)) :
    after (ops5 (F := F)) V = after ((ops5 (F := F)).drop 42) (after ((ops5 (F := F)).take 42) V) := rfl

set_option maxHeartbeats 1000000 in

theorem ops5_head_main_v260 (V : Valuation τ sig (Elt F)) (x0 : (⟨S64512x32, .f32⟩ : BufTy).Contents (Elt F)) (x8 : (⟨S32x128, .f32⟩ : BufTy).Contents (Elt F)) (x9 : (⟨S128, .f32⟩ : BufTy).Contents (Elt F))
    (h3 : V (Proc.devRef .tc main_v3) = val_main_v3 (F := F) x0 x8 x9) :
    after ((ops5 (F := F)).take 42) V (Proc.devRef .tc main_v260) = val_main_v260 (F := F) x0 x8 x9 := by
  show after [_, _, _, _, _, _, _, _, _, _, _, _, _, _, _, _, _, _, _, _, _, _, _, _, _, _, _, _, _, _, _, _, _, _, _, _, _, _, _, _, _, _] V _ = _
  after_results_simp
  rw [h3]
  rfl

set_option maxHeartbeats 1000000 in

theorem ops5_head_main_v261 (V : Valuation τ sig (Elt F)) (x1 : (⟨S64512x32, .f32⟩ : BufTy).Contents (Elt F)) (x10 : (⟨S32x128, .f32⟩ : BufTy).Contents (Elt F)) (x11 : (⟨S128, .f32⟩ : BufTy).Contents (Elt F))
    (h7 : V (Proc.devRef .tc main_v7) = val_main_v7 (F := F) x1 x10 x11) :
    after ((ops5 (F := F)).take 42) V (Proc.devRef .tc main_v261) = val_main_v261 (F := F) x1 x10 x11 := by
  show after [_, _, _, _, _, _, _, _, _, _, _, _, _, _, _, _, _, _, _, _, _, _, _, _, _, _, _, _, _, _, _, _, _, _, _, _, _, _, _, _, _, _] V _ = _
  after_results_simp
  rw [h7]
  rfl

set_option maxHeartbeats 1000000 in

theorem ops5_head_main_v262 (V : Valuation τ sig (Elt F)) (x3 : (⟨S64512x4x64, .f32⟩ : BufTy).Contents (Elt F)) (x14 : (⟨S64x128, .f32⟩ : BufTy).Contents (Elt F)) (x15 : (⟨S128, .f32⟩ : BufTy).Contents (Elt F))
    (h19 : V (Proc.devRef .tc main_v19) = val_main_v19 (F := F) x3 x14 x15) :
    after ((ops5 (F := F)).take 42) V (Proc.devRef .tc main_v262) = val_main_v262 (F := F) x3 x14 x15 := by
  show after [_, _, _, _, _, _, _, _, _, _, _, _, _, _, _, _, _, _, _, _, _, _, _, _, _, _, _, _, _, _, _, _, _, _, _, _, _, _, _, _, _, _] V _ = _
  after_results_simp
  rw [h19]
  rfl

set_option maxHeartbeats 1000000 in

theorem ops5_head_main_v263 (V : Valuation τ sig (Elt F)) (x4 : (⟨S64512x4x64, .f32⟩ : BufTy).Contents (Elt F)) (x14 : (⟨S64x128, .f32⟩ : BufTy).Contents (Elt F)) (x15 : (⟨S128, .f32⟩ : BufTy).Contents (Elt F))
    (h24 : V (Proc.devRef .tc main_v24) = val_main_v24 (F := F) x4 x14 x15) :
    after ((ops5 (F := F)).take 42) V (Proc.devRef .tc main_v263) = val_main_v263 (F := F) x4 x14 x15 := by
  show after [_, _, _, _, _, _, _, _, _, _, _, _, _, _, _, _, _, _, _, _, _, _, _, _, _, _, _, _, _, _, _, _, _, _, _, _, _, _, _, _, _, _] V _ = _
  after_results_simp
  rw [h24]
  rfl

set_option maxHeartbeats 1000000 in

theorem ops5_head_main_v264 (V : Valuation τ sig (Elt F)) (x2 : (⟨S64512x1000, .f32⟩ : BufTy).Contents (Elt F)) (x5 : (⟨S64512, .f32⟩ : BufTy).Contents (Elt F)) (x12 : (⟨S1000x128, .f32⟩ : BufTy).Contents (Elt F)) (x13 : (⟨S128, .f32⟩ : BufTy).Contents (Elt F))
    (h14 : V (Proc.devRef .tc main_v14) = val_main_v14 (F := F) x2 x5 x12 x13) :
    after ((ops5 (F := F)).take 42) V (Proc.devRef .tc main_v264) = val_main_v264 (F := F) x2 x5 x12 x13 := by
  show after [_, _, _, _, _, _, _, _, _, _, _, _, _, _, _, _, _, _, _, _, _, _, _, _, _, _, _, _, _, _, _, _, _, _, _, _, _, _, _, _, _, _] V _ = _
  after_results_simp
  rw [h14]
  rfl

set_option maxHeartbeats 1000000 in

theorem ops5_head_main_v234 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hrep : V (Proc.devRef .tc main_v222) = val_main_v222 (F := F) x0 x1 x2 x3 x4 x5 x6 x7 x8 x9 x10 x11 x12 x13 x14 x15 x16 x17 x18 x19 x20 x21)
    (h25 : V (Proc.devRef .tc main_v25) = val_main_v25 (F := F) x6) :
    after ((ops5 (F := F)).take 42) V (Proc.devRef .tc main_v234) = val_main_v234 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hrep, h25]
  rfl

set_option maxHeartbeats 1000000 in

theorem ops5_head_main_v249 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hrep : V (Proc.devRef .tc main_v222) = val_main_v222 (F := F) x0 x1 x2 x3 x4 x5 x6 x7 x8 x9 x10 x11 x12 x13 x14 x15 x16 x17 x18 x19 x20 x21)
    (h26 : V (Proc.devRef .tc main_v26) = val_main_v26 (F := F) x7) :
    after ((ops5 (F := F)).take 42) V (Proc.devRef .tc main_v249) = val_main_v249 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hrep, h26]
  rfl

set_option maxHeartbeats 1000000 in

theorem ops5_head_main_v239 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hl : V (Proc.devRef .tc main_v176) = val_main_v176 (F := F) x0 x1 x2 x3 x4 x5 x6 x7 x8 x9 x10 x11 x12 x13 x14 x15 x16 x17 x18 x19 x20 x21)
    (h25 : V (Proc.devRef .tc main_v25) = val_main_v25 (F := F) x6) :
    after ((ops5 (F := F)).take 42) V (Proc.devRef .tc main_v239) = val_main_v239 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hl, h25]
  rfl

set_option maxHeartbeats 1000000 in

theorem ops5_head_main_v244 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hr : V (Proc.devRef .tc main_v191) = val_main_v191 (F := F) x0 x1 x2 x3 x4 x5 x6 x7 x8 x9 x10 x11 x12 x13 x14 x15 x16 x17 x18 x19 x20 x21)
    (h25 : V (Proc.devRef .tc main_v25) = val_main_v25 (F := F) x6) :
    after ((ops5 (F := F)).take 42) V (Proc.devRef .tc main_v244) = val_main_v244 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hr, h25]
  rfl

set_option maxHeartbeats 1000000 in

theorem ops5_head_main_v254 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hl : V (Proc.devRef .tc main_v176) = val_main_v176 (F := F) x0 x1 x2 x3 x4 x5 x6 x7 x8 x9 x10 x11 x12 x13 x14 x15 x16 x17 x18 x19 x20 x21)
    (h26 : V (Proc.devRef .tc main_v26) = val_main_v26 (F := F) x7) :
    after ((ops5 (F := F)).take 42) V (Proc.devRef .tc main_v254) = val_main_v254 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hl, h26]
  rfl

set_option maxHeartbeats 1000000 in

theorem ops5_head_main_v259 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hr : V (Proc.devRef .tc main_v191) = val_main_v191 (F := F) x0 x1 x2 x3 x4 x5 x6 x7 x8 x9 x10 x11 x12 x13 x14 x15 x16 x17 x18 x19 x20 x21)
    (h26 : V (Proc.devRef .tc main_v26) = val_main_v26 (F := F) x7) :
    after ((ops5 (F := F)).take 42) V (Proc.devRef .tc main_v259) = val_main_v259 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hr, h26]
  rfl

theorem ops5_head_main_arg16 (V : Valuation τ sig (Elt F)) :
    after ((ops5 (F := F)).take 42) V (Proc.devRef .tc main_arg16) = V (Proc.devRef .tc main_arg16) := by
  show after [_, _, _, _, _, _, _, _, _, _, _, _, _, _, _, _, _, _, _, _, _, _, _, _, _, _, _, _, _, _, _, _, _, _, _, _, _, _, _, _, _, _] V _ = _
  after_results_simp

theorem ops5_head_main_arg17 (V : Valuation τ sig (Elt F)) :
    after ((ops5 (F := F)).take 42) V (Proc.devRef .tc main_arg17) = V (Proc.devRef .tc main_arg17) := by
  show after [_, _, _, _, _, _, _, _, _, _, _, _, _, _, _, _, _, _, _, _, _, _, _, _, _, _, _, _, _, _, _, _, _, _, _, _, _, _, _, _, _, _] V _ = _
  after_results_simp

theorem ops5_head_main_arg18 (V : Valuation τ sig (Elt F)) :
    after ((ops5 (F := F)).take 42) V (Proc.devRef .tc main_arg18) = V (Proc.devRef .tc main_arg18) := by
  show after [_, _, _, _, _, _, _, _, _, _, _, _, _, _, _, _, _, _, _, _, _, _, _, _, _, _, _, _, _, _, _, _, _, _, _, _, _, _, _, _, _, _] V _ = _
  after_results_simp

theorem ops5_head_main_arg19 (V : Valuation τ sig (Elt F)) :
    after ((ops5 (F := F)).take 42) V (Proc.devRef .tc main_arg19) = V (Proc.devRef .tc main_arg19) := by
  show after [_, _, _, _, _, _, _, _, _, _, _, _, _, _, _, _, _, _, _, _, _, _, _, _, _, _, _, _, _, _, _, _, _, _, _, _, _, _, _, _, _, _] V _ = _
  after_results_simp

theorem ops5_head_main_arg20 (V : Valuation τ sig (Elt F)) :
    after ((ops5 (F := F)).take 42) V (Proc.devRef .tc main_arg20) = V (Proc.devRef .tc main_arg20) := by
  show after [_, _, _, _, _, _, _, _, _, _, _, _, _, _, _, _, _, _, _, _, _, _, _, _, _, _, _, _, _, _, _, _, _, _, _, _, _, _, _, _, _, _] V _ = _
  after_results_simp

theorem ops5_head_main_arg21 (V : Valuation τ sig (Elt F)) :
    after ((ops5 (F := F)).take 42) V (Proc.devRef .tc main_arg21) = V (Proc.devRef .tc main_arg21) := by
  show after [_, _, _, _, _, _, _, _, _, _, _, _, _, _, _, _, _, _, _, _, _, _, _, _, _, _, _, _, _, _, _, _, _, _, _, _, _, _, _, _, _, _] V _ = _
  after_results_simp

set_option maxHeartbeats 4000000 in

theorem ops5_tail_main_v280 (W : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (e260 : W (Proc.devRef .tc main_v260) = val_main_v260 (F := F) x0 x8 x9)
    (e261 : W (Proc.devRef .tc main_v261) = val_main_v261 (F := F) x1 x10 x11)
    (e262 : W (Proc.devRef .tc main_v262) = val_main_v262 (F := F) x3 x14 x15)
    (e263 : W (Proc.devRef .tc main_v263) = val_main_v263 (F := F) x4 x14 x15)
    (e264 : W (Proc.devRef .tc main_v264) = val_main_v264 (F := F) x2 x5 x12 x13)
    (e234 : W (Proc.devRef .tc main_v234) = val_main_v234 (F := F) x0 x1 x2 x3 x4 x5 x6 x7 x8 x9 x10 x11 x12 x13 x14 x15 x16 x17 x18 x19 x20 x21)
    (e249 : W (Proc.devRef .tc main_v249) = val_main_v249 (F := F) x0 x1 x2 x3 x4 x5 x6 x7 x8 x9 x10 x11 x12 x13 x14 x15 x16 x17 x18 x19 x20 x21)
    (e239 : W (Proc.devRef .tc main_v239) = val_main_v239 (F := F) x0 x1 x2 x3 x4 x5 x6 x7 x8 x9 x10 x11 x12 x13 x14 x15 x16 x17 x18 x19 x20 x21)
    (e244 : W (Proc.devRef .tc main_v244) = val_main_v244 (F := F) x0 x1 x2 x3 x4 x5 x6 x7 x8 x9 x10 x11 x12 x13 x14 x15 x16 x17 x18 x19 x20 x21)
    (e254 : W (Proc.devRef .tc main_v254) = val_main_v254 (F := F) x0 x1 x2 x3 x4 x5 x6 x7 x8 x9 x10 x11 x12 x13 x14 x15 x16 x17 x18 x19 x20 x21)
    (e259 : W (Proc.devRef .tc main_v259) = val_main_v259 (F := F) x0 x1 x2 x3 x4 x5 x6 x7 x8 x9 x10 x11 x12 x13 x14 x15 x16 x17 x18 x19 x20 x21)
    (h16 : W (Proc.devRef .tc main_arg16) = x16)
    (h17 : W (Proc.devRef .tc main_arg17) = x17)
    (h18 : W (Proc.devRef .tc main_arg18) = x18)
    (h19a : W (Proc.devRef .tc main_arg19) = x19)
    (h20 : W (Proc.devRef .tc main_arg20) = x20)
    (h21 : W (Proc.devRef .tc main_arg21) = x21) :
    after ((ops5 (F := F)).drop 42) W (Proc.devRef .tc main_v280) = val_main_v280 (F := F) x0 x1 x2 x3 x4 x5 x6 x7 x8 x9 x10 x11 x12 x13 x14 x15 x16 x17 x18 x19 x20 x21 := by
  show after [_, _, _, _, _, _, _, _, _, _, _, _, _, _, _, _, _, _, _, _, _, _] W _ = _
  simp (disch := decide) only [after_cons, after_nil,
      nullary_result', unary_result', binary_result', reshape_result', nary_result',
      nullary_result_ne', unary_result_ne', binary_result_ne', reshape_result_ne', nary_result_ne', Matrix.cons_val]
  rw [e260, e261, e262, e263, e264, e234, e249, e239, e244, e254, e259, h16, h17, h18, h19a, h20, h21]
  rfl

theorem ops5_tail_main_v234 (W : Valuation τ sig (Elt F)) :
    after ((ops5 (F := F)).drop 42) W (Proc.devRef .tc main_v234) = W (Proc.devRef .tc main_v234) := by
  show after [_, _, _, _, _, _, _, _, _, _, _, _, _, _, _, _, _, _, _, _, _, _] W _ = _
  after_results_simp

theorem ops5_tail_main_v249 (W : Valuation τ sig (Elt F)) :
    after ((ops5 (F := F)).drop 42) W (Proc.devRef .tc main_v249) = W (Proc.devRef .tc main_v249) := by
  show after [_, _, _, _, _, _, _, _, _, _, _, _, _, _, _, _, _, _, _, _, _, _] W _ = _
  after_results_simp

end Stretch

theorem chunk5 (V : Valuation τ sig (Elt Ideal)) (x0 : (⟨S64512x32, .f32⟩ : BufTy).Contents (Elt Ideal)) (x1 : (⟨S64512x32, .f32⟩ : BufTy).Contents (Elt Ideal)) (x2 : (⟨S64512x1000, .f32⟩ : BufTy).Contents (Elt Ideal)) (x3 : (⟨S64512x4x64, .f32⟩ : BufTy).Contents (Elt Ideal)) (x4 : (⟨S64512x4x64, .f32⟩ : BufTy).Contents (Elt Ideal)) (x5 : (⟨S64512, .f32⟩ : BufTy).Contents (Elt Ideal)) (x6 : (⟨S64512, .i32⟩ : BufTy).Contents (Elt Ideal)) (x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal))
    (h3 : V (Proc.devRef .tc main_v3) = val_main_v3 (F := Ideal) x0 x8 x9)
    (h7 : V (Proc.devRef .tc main_v7) = val_main_v7 (F := Ideal) x1 x10 x11)
    (h19 : V (Proc.devRef .tc main_v19) = val_main_v19 (F := Ideal) x3 x14 x15)
    (h24 : V (Proc.devRef .tc main_v24) = val_main_v24 (F := Ideal) x4 x14 x15)
    (h14 : V (Proc.devRef .tc main_v14) = val_main_v14 (F := Ideal) x2 x5 x12 x13)
    (h25 : V (Proc.devRef .tc main_v25) = val_main_v25 (F := Ideal) x6)
    (h26 : V (Proc.devRef .tc main_v26) = val_main_v26 (F := Ideal) x7)
    (hrep : V (Proc.devRef .tc main_v222) = val_main_v222 (F := Ideal) x0 x1 x2 x3 x4 x5 x6 x7 x8 x9 x10 x11 x12 x13 x14 x15 x16 x17 x18 x19 x20 x21)
    (hl : V (Proc.devRef .tc main_v176) = val_main_v176 (F := Ideal) x0 x1 x2 x3 x4 x5 x6 x7 x8 x9 x10 x11 x12 x13 x14 x15 x16 x17 x18 x19 x20 x21)
    (hr : V (Proc.devRef .tc main_v191) = val_main_v191 (F := Ideal) x0 x1 x2 x3 x4 x5 x6 x7 x8 x9 x10 x11 x12 x13 x14 x15 x16 x17 x18 x19 x20 x21)
    (h16 : V (Proc.devRef .tc main_arg16) = x16)
    (h17 : V (Proc.devRef .tc main_arg17) = x17)
    (h18 : V (Proc.devRef .tc main_arg18) = x18)
    (h19a : V (Proc.devRef .tc main_arg19) = x19)
    (h20 : V (Proc.devRef .tc main_arg20) = x20)
    (h21 : V (Proc.devRef .tc main_arg21) = x21) :
    after (ops5 (F := Ideal)) V (Proc.devRef .tc main_v280) = val_main_v280 (F := Ideal) x0 x1 x2 x3 x4 x5 x6 x7 x8 x9 x10 x11 x12 x13 x14 x15 x16 x17 x18 x19 x20 x21 ∧
    after (ops5 (F := Ideal)) V (Proc.devRef .tc main_v234) = val_main_v234 (F := Ideal) x0 x1 x2 x3 x4 x5 x6 x7 x8 x9 x10 x11 x12 x13 x14 x15 x16 x17 x18 x19 x20 x21 ∧
    after (ops5 (F := Ideal)) V (Proc.devRef .tc main_v249) = val_main_v249 (F := Ideal) x0 x1 x2 x3 x4 x5 x6 x7 x8 x9 x10 x11 x12 x13 x14 x15 x16 x17 x18 x19 x20 x21 := by
  rw [ops5_cut V]
  exact ⟨ops5_tail_main_v280 _ x0 x1 x2 x3 x4 x5 x6 x7 x8 x9 x10 x11 x12 x13 x14 x15 x16 x17 x18 x19 x20 x21
      (ops5_head_main_v260 V x0 x8 x9 h3)
      (ops5_head_main_v261 V x1 x10 x11 h7)
      (ops5_head_main_v262 V x3 x14 x15 h19)
      (ops5_head_main_v263 V x4 x14 x15 h24)
      (ops5_head_main_v264 V x2 x5 x12 x13 h14)
      (ops5_head_main_v234 V x0 x1 x2 x3 x4 x5 x6 x7 x8 x9 x10 x11 x12 x13 x14 x15 x16 x17 x18 x19 x20 x21 hrep h25)
      (ops5_head_main_v249 V x0 x1 x2 x3 x4 x5 x6 x7 x8 x9 x10 x11 x12 x13 x14 x15 x16 x17 x18 x19 x20 x21 hrep h26)
      (ops5_head_main_v239 V x0 x1 x2 x3 x4 x5 x6 x7 x8 x9 x10 x11 x12 x13 x14 x15 x16 x17 x18 x19 x20 x21 hl h25)
      (ops5_head_main_v244 V x0 x1 x2 x3 x4 x5 x6 x7 x8 x9 x10 x11 x12 x13 x14 x15 x16 x17 x18 x19 x20 x21 hr h25)
      (ops5_head_main_v254 V x0 x1 x2 x3 x4 x5 x6 x7 x8 x9 x10 x11 x12 x13 x14 x15 x16 x17 x18 x19 x20 x21 hl h26)
      (ops5_head_main_v259 V x0 x1 x2 x3 x4 x5 x6 x7 x8 x9 x10 x11 x12 x13 x14 x15 x16 x17 x18 x19 x20 x21 hr h26)
      ((ops5_head_main_arg16 V).trans h16)
      ((ops5_head_main_arg17 V).trans h17)
      ((ops5_head_main_arg18 V).trans h18)
      ((ops5_head_main_arg19 V).trans h19a)
      ((ops5_head_main_arg20 V).trans h20)
      ((ops5_head_main_arg21 V).trans h21),
    (ops5_tail_main_v234 _).trans (ops5_head_main_v234 V x0 x1 x2 x3 x4 x5 x6 x7 x8 x9 x10 x11 x12 x13 x14 x15 x16 x17 x18 x19 x20 x21 hrep h25),
    (ops5_tail_main_v249 _).trans (ops5_head_main_v249 V x0 x1 x2 x3 x4 x5 x6 x7 x8 x9 x10 x11 x12 x13 x14 x15 x16 x17 x18 x19 x20 x21 hrep h26)⟩

end Cert.ReferenceIdeal.StagedRun
-- ==== Proof.RefChunk6.lean ====
import proofs.«410031_j84061099917532_3_alg».proof.Proof.RefOps
import proofs.«410031_j84061099917532_3_alg».proof.Proof.RefStages

set_option maxRecDepth 16384

namespace Cert.ReferenceIdeal.StagedRun

open Cert.ReferenceIdeal Cert.ReferenceIdeal.Gen Idealize.ShloMosaic Idealize.ShloMosaic.TcCoe Idealize.SL.Sem Idealize.ShloMosaic.StableHlo
open Cert.ReferenceIdeal.Stages

section Stretch

variable {F : FTy → Type} [FloatOps F]

theorem ops6_cut (V : Valuation τ sig (Elt F)) :
    after (ops6 (F := F)) V = after ((ops6 (F := F)).drop 42) (after ((ops6 (F := F)).take 42) V) := rfl

set_option maxHeartbeats 1000000 in

theorem ops6_head_main_v318 (V : Valuation τ sig (Elt F)) (x0 : (⟨S64512x32, .f32⟩ : BufTy).Contents (Elt F)) (x8 : (⟨S32x128, .f32⟩ : BufTy).Contents (Elt F)) (x9 : (⟨S128, .f32⟩ : BufTy).Contents (Elt F))
    (h3 : V (Proc.devRef .tc main_v3) = val_main_v3 (F := F) x0 x8 x9) :
    after ((ops6 (F := F)).take 42) V (Proc.devRef .tc main_v318) = val_main_v318 (F := F) x0 x8 x9 := by
  show after [_, _, _, _, _, _, _, _, _, _, _, _, _, _, _, _, _, _, _, _, _, _, _, _, _, _, _, _, _, _, _, _, _, _, _, _, _, _, _, _, _, _] V _ = _
  after_results_simp
  rw [h3]
  rfl

set_option maxHeartbeats 1000000 in

theorem ops6_head_main_v319 (V : Valuation τ sig (Elt F)) (x1 : (⟨S64512x32, .f32⟩ : BufTy).Contents (Elt F)) (x10 : (⟨S32x128, .f32⟩ : BufTy).Contents (Elt F)) (x11 : (⟨S128, .f32⟩ : BufTy).Contents (Elt F))
    (h7 : V (Proc.devRef .tc main_v7) = val_main_v7 (F := F) x1 x10 x11) :
    after ((ops6 (F := F)).take 42) V (Proc.devRef .tc main_v319) = val_main_v319 (F := F) x1 x10 x11 := by
  show after [_, _, _, _, _, _, _, _, _, _, _, _, _, _, _, _, _, _, _, _, _, _, _, _, _, _, _, _, _, _, _, _, _, _, _, _, _, _, _, _, _, _] V _ = _
  after_results_simp
  rw [h7]
  rfl

set_option maxHeartbeats 1000000 in

theorem ops6_head_main_v320 (V : Valuation τ sig (Elt F)) (x3 : (⟨S64512x4x64, .f32⟩ : BufTy).Contents (Elt F)) (x14 : (⟨S64x128, .f32⟩ : BufTy).Contents (Elt F)) (x15 : (⟨S128, .f32⟩ : BufTy).Contents (Elt F))
    (h19 : V (Proc.devRef .tc main_v19) = val_main_v19 (F := F) x3 x14 x15) :
    after ((ops6 (F := F)).take 42) V (Proc.devRef .tc main_v320) = val_main_v320 (F := F) x3 x14 x15 := by
  show after [_, _, _, _, _, _, _, _, _, _, _, _, _, _, _, _, _, _, _, _, _, _, _, _, _, _, _, _, _, _, _, _, _, _, _, _, _, _, _, _, _, _] V _ = _
  after_results_simp
  rw [h19]
  rfl

set_option maxHeartbeats 1000000 in

theorem ops6_head_main_v321 (V : Valuation τ sig (Elt F)) (x4 : (⟨S64512x4x64, .f32⟩ : BufTy).Contents (Elt F)) (x14 : (⟨S64x128, .f32⟩ : BufTy).Contents (Elt F)) (x15 : (⟨S128, .f32⟩ : BufTy).Contents (Elt F))
    (h24 : V (Proc.devRef .tc main_v24) = val_main_v24 (F := F) x4 x14 x15) :
    after ((ops6 (F := F)).take 42) V (Proc.devRef .tc main_v321) = val_main_v321 (F := F) x4 x14 x15 := by
  show after [_, _, _, _, _, _, _, _, _, _, _, _, _, _, _, _, _, _, _, _, _, _, _, _, _, _, _, _, _, _, _, _, _, _, _, _, _, _, _, _, _, _] V _ = _
  after_results_simp
  rw [h24]
  rfl

set_option maxHeartbeats 1000000 in

theorem ops6_head_main_v322 (V : Valuation τ sig (Elt F)) (x2 : (⟨S64512x1000, .f32⟩ : BufTy).Contents (Elt F)) (x5 : (⟨S64512, .f32⟩ : BufTy).Contents (Elt F)) (x12 : (⟨S1000x128, .f32⟩ : BufTy).Contents (Elt F)) (x13 : (⟨S128, .f32⟩ : BufTy).Contents (Elt F))
    (h14 : V (Proc.devRef .tc main_v14) = val_main_v14 (F := F) x2 x5 x12 x13) :
    after ((ops6 (F := F)).take 42) V (Proc.devRef .tc main_v322) = val_main_v322 (F := F) x2 x5 x12 x13 := by
  show after [_, _, _, _, _, _, _, _, _, _, _, _, _, _, _, _, _, _, _, _, _, _, _, _, _, _, _, _, _, _, _, _, _, _, _, _, _, _, _, _, _, _] V _ = _
  after_results_simp
  rw [h14]
  rfl

set_option maxHeartbeats 1000000 in

theorem ops6_head_main_v292 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hrep : V (Proc.devRef .tc main_v280) = val_main_v280 (F := F) x0 x1 x2 x3 x4 x5 x6 x7 x8 x9 x10 x11 x12 x13 x14 x15 x16 x17 x18 x19 x20 x21)
    (h25 : V (Proc.devRef .tc main_v25) = val_main_v25 (F := F) x6) :
    after ((ops6 (F := F)).take 42) V (Proc.devRef .tc main_v292) = val_main_v292 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hrep, h25]
  rfl

set_option maxHeartbeats 1000000 in

theorem ops6_head_main_v307 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hrep : V (Proc.devRef .tc main_v280) = val_main_v280 (F := F) x0 x1 x2 x3 x4 x5 x6 x7 x8 x9 x10 x11 x12 x13 x14 x15 x16 x17 x18 x19 x20 x21)
    (h26 : V (Proc.devRef .tc main_v26) = val_main_v26 (F := F) x7) :
    after ((ops6 (F := F)).take 42) V (Proc.devRef .tc main_v307) = val_main_v307 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hrep, h26]
  rfl

set_option maxHeartbeats 1000000 in

theorem ops6_head_main_v297 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hl : V (Proc.devRef .tc main_v234) = val_main_v234 (F := F) x0 x1 x2 x3 x4 x5 x6 x7 x8 x9 x10 x11 x12 x13 x14 x15 x16 x17 x18 x19 x20 x21)
    (h25 : V (Proc.devRef .tc main_v25) = val_main_v25 (F := F) x6) :
    after ((ops6 (F := F)).take 42) V (Proc.devRef .tc main_v297) = val_main_v297 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hl, h25]
  rfl

set_option maxHeartbeats 1000000 in

theorem ops6_head_main_v302 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hr : V (Proc.devRef .tc main_v249) = val_main_v249 (F := F) x0 x1 x2 x3 x4 x5 x6 x7 x8 x9 x10 x11 x12 x13 x14 x15 x16 x17 x18 x19 x20 x21)
    (h25 : V (Proc.devRef .tc main_v25) = val_main_v25 (F := F) x6) :
    after ((ops6 (F := F)).take 42) V (Proc.devRef .tc main_v302) = val_main_v302 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hr, h25]
  rfl

set_option maxHeartbeats 1000000 in

theorem ops6_head_main_v312 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hl : V (Proc.devRef .tc main_v234) = val_main_v234 (F := F) x0 x1 x2 x3 x4 x5 x6 x7 x8 x9 x10 x11 x12 x13 x14 x15 x16 x17 x18 x19 x20 x21)
    (h26 : V (Proc.devRef .tc main_v26) = val_main_v26 (F := F) x7) :
    after ((ops6 (F := F)).take 42) V (Proc.devRef .tc main_v312) = val_main_v312 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hl, h26]
  rfl

set_option maxHeartbeats 1000000 in

theorem ops6_head_main_v317 (V : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (hr : V (Proc.devRef .tc main_v249) = val_main_v249 (F := F) x0 x1 x2 x3 x4 x5 x6 x7 x8 x9 x10 x11 x12 x13 x14 x15 x16 x17 x18 x19 x20 x21)
    (h26 : V (Proc.devRef .tc main_v26) = val_main_v26 (F := F) x7) :
    after ((ops6 (F := F)).take 42) V (Proc.devRef .tc main_v317) = val_main_v317 (F := F) x0 x1 x2 x3 x4 x5 x6 x7 x8 x9 x10 x11 x12 x13 x14 x15 x16 x17 x18 x19 x20 x21 := by
  show after [_, _, _, _, _, _, _, _, _, _, _, _, _, _, _, _, _, _, _, _, _, _, _, _, _, _, _, _, _, _, _, _, _, _, _, _, _, _, _, _, _, _] V _ = _
  after_results_simp
  rw [hr, h26]
  rfl

theorem ops6_head_main_arg16 (V : Valuation τ sig (Elt F)) :
    after ((ops6 (F := F)).take 42) V (Proc.devRef .tc main_arg16) = V (Proc.devRef .tc main_arg16) := by
  show after [_, _, _, _, _, _, _, _, _, _, _, _, _, _, _, _, _, _, _, _, _, _, _, _, _, _, _, _, _, _, _, _, _, _, _, _, _, _, _, _, _, _] V _ = _
  after_results_simp

theorem ops6_head_main_arg17 (V : Valuation τ sig (Elt F)) :
    after ((ops6 (F := F)).take 42) V (Proc.devRef .tc main_arg17) = V (Proc.devRef .tc main_arg17) := by
  show after [_, _, _, _, _, _, _, _, _, _, _, _, _, _, _, _, _, _, _, _, _, _, _, _, _, _, _, _, _, _, _, _, _, _, _, _, _, _, _, _, _, _] V _ = _
  after_results_simp

theorem ops6_head_main_arg18 (V : Valuation τ sig (Elt F)) :
    after ((ops6 (F := F)).take 42) V (Proc.devRef .tc main_arg18) = V (Proc.devRef .tc main_arg18) := by
  show after [_, _, _, _, _, _, _, _, _, _, _, _, _, _, _, _, _, _, _, _, _, _, _, _, _, _, _, _, _, _, _, _, _, _, _, _, _, _, _, _, _, _] V _ = _
  after_results_simp

theorem ops6_head_main_arg19 (V : Valuation τ sig (Elt F)) :
    after ((ops6 (F := F)).take 42) V (Proc.devRef .tc main_arg19) = V (Proc.devRef .tc main_arg19) := by
  show after [_, _, _, _, _, _, _, _, _, _, _, _, _, _, _, _, _, _, _, _, _, _, _, _, _, _, _, _, _, _, _, _, _, _, _, _, _, _, _, _, _, _] V _ = _
  after_results_simp

theorem ops6_head_main_arg20 (V : Valuation τ sig (Elt F)) :
    after ((ops6 (F := F)).take 42) V (Proc.devRef .tc main_arg20) = V (Proc.devRef .tc main_arg20) := by
  show after [_, _, _, _, _, _, _, _, _, _, _, _, _, _, _, _, _, _, _, _, _, _, _, _, _, _, _, _, _, _, _, _, _, _, _, _, _, _, _, _, _, _] V _ = _
  after_results_simp

theorem ops6_head_main_arg21 (V : Valuation τ sig (Elt F)) :
    after ((ops6 (F := F)).take 42) V (Proc.devRef .tc main_arg21) = V (Proc.devRef .tc main_arg21) := by
  show after [_, _, _, _, _, _, _, _, _, _, _, _, _, _, _, _, _, _, _, _, _, _, _, _, _, _, _, _, _, _, _, _, _, _, _, _, _, _, _, _, _, _] V _ = _
  after_results_simp

set_option maxHeartbeats 4000000 in

theorem ops6_tail_main_v338 (W : Valuation τ sig (Elt F)) (x0 : (⟨S64512x32, .f32⟩ : BufTy).Contents (Elt F)) (x1 : (⟨S64512x32, .f32⟩ : BufTy).Contents (Elt F)) (x2 : (⟨S64512x1000, .f32⟩ : BufTy).Contents (Elt F)) (x3 : (⟨S64512x4x64, .f32⟩ : BufTy).Contents (Elt F)) (x4 : (⟨S64512x4x64, .f32⟩ : BufTy).Contents (Elt F)) (x5 : (⟨S64512, .f32⟩ : BufTy).Contents (Elt F)) (x6 : (⟨S64512, .i32⟩ : BufTy).Contents (Elt F)) (x7 : (⟨S64512, .i32⟩ : BufTy).Contents (Elt F)) (x8 : (⟨S32x128, .f32⟩ : BufTy).Contents (Elt F)) (x9 : (⟨S128, .f32⟩ : BufTy).Contents (Elt F)) (x10 : (⟨S32x128, .f32⟩ : BufTy).Contents (Elt F)) (x11 : (⟨S128, .f32⟩ : BufTy).Contents (Elt F)) (x12 : (⟨S1000x128, .f32⟩ : BufTy).Contents (Elt F)) (x13 : (⟨S128, .f32⟩ : BufTy).Contents (Elt F)) (x14 : (⟨S64x128, .f32⟩ : BufTy).Contents (Elt F)) (x15 : (⟨S128, .f32⟩ : BufTy).Contents (Elt F)) (x16 : (⟨S1408x512, .f32⟩ : BufTy).Contents (Elt F)) (x17 : (⟨S512, .f32⟩ : BufTy).Contents (Elt F)) (x18 : (⟨S512x256, .f32⟩ : BufTy).Contents (Elt F)) (x19 : (⟨S256, .f32⟩ : BufTy).Contents (Elt F)) (x20 : (⟨S256x128, .f32⟩ : BufTy).Contents (Elt F)) (x21 : (⟨S128, .f32⟩ : BufTy).Contents (Elt F))
    (e318 : W (Proc.devRef .tc main_v318) = val_main_v318 (F := F) x0 x8 x9)
    (e319 : W (Proc.devRef .tc main_v319) = val_main_v319 (F := F) x1 x10 x11)
    (e320 : W (Proc.devRef .tc main_v320) = val_main_v320 (F := F) x3 x14 x15)
    (e321 : W (Proc.devRef .tc main_v321) = val_main_v321 (F := F) x4 x14 x15)
    (e322 : W (Proc.devRef .tc main_v322) = val_main_v322 (F := F) x2 x5 x12 x13)
    (e292 : W (Proc.devRef .tc main_v292) = val_main_v292 (F := F) x0 x1 x2 x3 x4 x5 x6 x7 x8 x9 x10 x11 x12 x13 x14 x15 x16 x17 x18 x19 x20 x21)
    (e307 : W (Proc.devRef .tc main_v307) = val_main_v307 (F := F) x0 x1 x2 x3 x4 x5 x6 x7 x8 x9 x10 x11 x12 x13 x14 x15 x16 x17 x18 x19 x20 x21)
    (e297 : W (Proc.devRef .tc main_v297) = val_main_v297 (F := F) x0 x1 x2 x3 x4 x5 x6 x7 x8 x9 x10 x11 x12 x13 x14 x15 x16 x17 x18 x19 x20 x21)
    (e302 : W (Proc.devRef .tc main_v302) = val_main_v302 (F := F) x0 x1 x2 x3 x4 x5 x6 x7 x8 x9 x10 x11 x12 x13 x14 x15 x16 x17 x18 x19 x20 x21)
    (e312 : W (Proc.devRef .tc main_v312) = val_main_v312 (F := F) x0 x1 x2 x3 x4 x5 x6 x7 x8 x9 x10 x11 x12 x13 x14 x15 x16 x17 x18 x19 x20 x21)
    (e317 : W (Proc.devRef .tc main_v317) = val_main_v317 (F := F) x0 x1 x2 x3 x4 x5 x6 x7 x8 x9 x10 x11 x12 x13 x14 x15 x16 x17 x18 x19 x20 x21)
    (h16 : W (Proc.devRef .tc main_arg16) = x16)
    (h17 : W (Proc.devRef .tc main_arg17) = x17)
    (h18 : W (Proc.devRef .tc main_arg18) = x18)
    (h19a : W (Proc.devRef .tc main_arg19) = x19)
    (h20 : W (Proc.devRef .tc main_arg20) = x20)
    (h21 : W (Proc.devRef .tc main_arg21) = x21) :
    after ((ops6 (F := F)).drop 42) W (Proc.devRef .tc main_v338) = val_main_v338 (F := F) x0 x1 x2 x3 x4 x5 x6 x7 x8 x9 x10 x11 x12 x13 x14 x15 x16 x17 x18 x19 x20 x21 := by
  show after [_, _, _, _, _, _, _, _, _, _, _, _, _, _, _, _, _, _, _, _, _, _] W _ = _
  simp (disch := decide) only [after_cons, after_nil,
      nullary_result', unary_result', binary_result', reshape_result', nary_result',
      nullary_result_ne', unary_result_ne', binary_result_ne', reshape_result_ne', nary_result_ne', Matrix.cons_val]
  rw [e318, e319, e320, e321, e322, e292, e307, e297, e302, e312, e317, h16, h17, h18, h19a, h20, h21]
  rfl

theorem ops6_tail_main_v292 (W : Valuation τ sig (Elt F)) :
    after ((ops6 (F := F)).drop 42) W (Proc.devRef .tc main_v292) = W (Proc.devRef .tc main_v292) := by
  show after [_, _, _, _, _, _, _, _, _, _, _, _, _, _, _, _, _, _, _, _, _, _] W _ = _
  after_results_simp

theorem ops6_tail_main_v307 (W : Valuation τ sig (Elt F)) :
    after ((ops6 (F := F)).drop 42) W (Proc.devRef .tc main_v307) = W (Proc.devRef .tc main_v307) := by
  show after [_, _, _, _, _, _, _, _, _, _, _, _, _, _, _, _, _, _, _, _, _, _] W _ = _
  after_results_simp

end Stretch

theorem chunk6 (V : Valuation τ sig (Elt Ideal)) (x0 : (⟨S64512x32, .f32⟩ : BufTy).Contents (Elt Ideal)) (x1 : (⟨S64512x32, .f32⟩ : BufTy).Contents (Elt Ideal)) (x2 : (⟨S64512x1000, .f32⟩ : BufTy).Contents (Elt Ideal)) (x3 : (⟨S64512x4x64, .f32⟩ : BufTy).Contents (Elt Ideal)) (x4 : (⟨S64512x4x64, .f32⟩ : BufTy).Contents (Elt Ideal)) (x5 : (⟨S64512, .f32⟩ : BufTy).Contents (Elt Ideal)) (x6 : (⟨S64512, .i32⟩ : BufTy).Contents (Elt Ideal)) (x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal))
    (h3 : V (Proc.devRef .tc main_v3) = val_main_v3 (F := Ideal) x0 x8 x9)
    (h7 : V (Proc.devRef .tc main_v7) = val_main_v7 (F := Ideal) x1 x10 x11)
    (h19 : V (Proc.devRef .tc main_v19) = val_main_v19 (F := Ideal) x3 x14 x15)
    (h24 : V (Proc.devRef .tc main_v24) = val_main_v24 (F := Ideal) x4 x14 x15)
    (h14 : V (Proc.devRef .tc main_v14) = val_main_v14 (F := Ideal) x2 x5 x12 x13)
    (h25 : V (Proc.devRef .tc main_v25) = val_main_v25 (F := Ideal) x6)
    (h26 : V (Proc.devRef .tc main_v26) = val_main_v26 (F := Ideal) x7)
    (hrep : V (Proc.devRef .tc main_v280) = val_main_v280 (F := Ideal) x0 x1 x2 x3 x4 x5 x6 x7 x8 x9 x10 x11 x12 x13 x14 x15 x16 x17 x18 x19 x20 x21)
    (hl : V (Proc.devRef .tc main_v234) = val_main_v234 (F := Ideal) x0 x1 x2 x3 x4 x5 x6 x7 x8 x9 x10 x11 x12 x13 x14 x15 x16 x17 x18 x19 x20 x21)
    (hr : V (Proc.devRef .tc main_v249) = val_main_v249 (F := Ideal) x0 x1 x2 x3 x4 x5 x6 x7 x8 x9 x10 x11 x12 x13 x14 x15 x16 x17 x18 x19 x20 x21)
    (h16 : V (Proc.devRef .tc main_arg16) = x16)
    (h17 : V (Proc.devRef .tc main_arg17) = x17)
    (h18 : V (Proc.devRef .tc main_arg18) = x18)
    (h19a : V (Proc.devRef .tc main_arg19) = x19)
    (h20 : V (Proc.devRef .tc main_arg20) = x20)
    (h21 : V (Proc.devRef .tc main_arg21) = x21) :
    after (ops6 (F := Ideal)) V (Proc.devRef .tc main_v338) = val_main_v338 (F := Ideal) x0 x1 x2 x3 x4 x5 x6 x7 x8 x9 x10 x11 x12 x13 x14 x15 x16 x17 x18 x19 x20 x21 ∧
    after (ops6 (F := Ideal)) V (Proc.devRef .tc main_v292) = val_main_v292 (F := Ideal) x0 x1 x2 x3 x4 x5 x6 x7 x8 x9 x10 x11 x12 x13 x14 x15 x16 x17 x18 x19 x20 x21 ∧
    after (ops6 (F := Ideal)) V (Proc.devRef .tc main_v307) = val_main_v307 (F := Ideal) x0 x1 x2 x3 x4 x5 x6 x7 x8 x9 x10 x11 x12 x13 x14 x15 x16 x17 x18 x19 x20 x21 := by
  rw [ops6_cut V]
  exact ⟨ops6_tail_main_v338 _ x0 x1 x2 x3 x4 x5 x6 x7 x8 x9 x10 x11 x12 x13 x14 x15 x16 x17 x18 x19 x20 x21
      (ops6_head_main_v318 V x0 x8 x9 h3)
      (ops6_head_main_v319 V x1 x10 x11 h7)
      (ops6_head_main_v320 V x3 x14 x15 h19)
      (ops6_head_main_v321 V x4 x14 x15 h24)
      (ops6_head_main_v322 V x2 x5 x12 x13 h14)
      (ops6_head_main_v292 V x0 x1 x2 x3 x4 x5 x6 x7 x8 x9 x10 x11 x12 x13 x14 x15 x16 x17 x18 x19 x20 x21 hrep h25)
      (ops6_head_main_v307 V x0 x1 x2 x3 x4 x5 x6 x7 x8 x9 x10 x11 x12 x13 x14 x15 x16 x17 x18 x19 x20 x21 hrep h26)
      (ops6_head_main_v297 V x0 x1 x2 x3 x4 x5 x6 x7 x8 x9 x10 x11 x12 x13 x14 x15 x16 x17 x18 x19 x20 x21 hl h25)
      (ops6_head_main_v302 V x0 x1 x2 x3 x4 x5 x6 x7 x8 x9 x10 x11 x12 x13 x14 x15 x16 x17 x18 x19 x20 x21 hr h25)
      (ops6_head_main_v312 V x0 x1 x2 x3 x4 x5 x6 x7 x8 x9 x10 x11 x12 x13 x14 x15 x16 x17 x18 x19 x20 x21 hl h26)
      (ops6_head_main_v317 V x0 x1 x2 x3 x4 x5 x6 x7 x8 x9 x10 x11 x12 x13 x14 x15 x16 x17 x18 x19 x20 x21 hr h26)
      ((ops6_head_main_arg16 V).trans h16)
      ((ops6_head_main_arg17 V).trans h17)
      ((ops6_head_main_arg18 V).trans h18)
      ((ops6_head_main_arg19 V).trans h19a)
      ((ops6_head_main_arg20 V).trans h20)
      ((ops6_head_main_arg21 V).trans h21),
    (ops6_tail_main_v292 _).trans (ops6_head_main_v292 V x0 x1 x2 x3 x4 x5 x6 x7 x8 x9 x10 x11 x12 x13 x14 x15 x16 x17 x18 x19 x20 x21 hrep h25),
    (ops6_tail_main_v307 _).trans (ops6_head_main_v307 V x0 x1 x2 x3 x4 x5 x6 x7 x8 x9 x10 x11 x12 x13 x14 x15 x16 x17 x18 x19 x20 x21 hrep h26)⟩

end Cert.ReferenceIdeal.StagedRun
-- ==== Proof.RefChunk7.lean ====
import proofs.«410031_j84061099917532_3_alg».proof.Proof.RefOps
import proofs.«410031_j84061099917532_3_alg».proof.Proof.RefStages

namespace Cert.ReferenceIdeal.StagedRun

open Cert.ReferenceIdeal Cert.ReferenceIdeal.Gen Idealize.ShloMosaic Idealize.ShloMosaic.TcCoe Idealize.SL.Sem Idealize.ShloMosaic.StableHlo
open Cert.ReferenceIdeal.Stages

theorem ops7_main_v358 (V : Valuation τ sig (Elt Ideal))
    (x0 x1 : (⟨S64512x32, .f32⟩ : BufTy).Contents (Elt Ideal))
    (x2 : (⟨S64512x1000, .f32⟩ : BufTy).Contents (Elt Ideal))
    (x3 x4 : (⟨S64512x4x64, .f32⟩ : BufTy).Contents (Elt Ideal))
    (x5 : (⟨S64512, .f32⟩ : BufTy).Contents (Elt Ideal))
    (x6 x7 : (⟨S64512, .i32⟩ : BufTy).Contents (Elt Ideal))
    (x8 : (⟨S32x128, .f32⟩ : BufTy).Contents (Elt Ideal))
    (x9 : (⟨S128, .f32⟩ : BufTy).Contents (Elt Ideal))
    (x10 : (⟨S32x128, .f32⟩ : BufTy).Contents (Elt Ideal))
    (x11 : (⟨S128, .f32⟩ : BufTy).Contents (Elt Ideal))
    (x12 : (⟨S1000x128, .f32⟩ : BufTy).Contents (Elt Ideal))
    (x13 : (⟨S128, .f32⟩ : BufTy).Contents (Elt Ideal))
    (x14 : (⟨S64x128, .f32⟩ : BufTy).Contents (Elt Ideal))
    (x15 : (⟨S128, .f32⟩ : BufTy).Contents (Elt Ideal))
    (x16 : (⟨S1408x512, .f32⟩ : BufTy).Contents (Elt Ideal))
    (x17 : (⟨S512, .f32⟩ : BufTy).Contents (Elt Ideal))
    (x18 : (⟨S512x256, .f32⟩ : BufTy).Contents (Elt Ideal))
    (x19 : (⟨S256, .f32⟩ : BufTy).Contents (Elt Ideal))
    (x20 : (⟨S256x128, .f32⟩ : BufTy).Contents (Elt Ideal))
    (x21 : (⟨S128, .f32⟩ : BufTy).Contents (Elt Ideal))
    (x22 : (⟨S128x128, .f32⟩ : BufTy).Contents (Elt Ideal))
    (x23 : (⟨S128, .f32⟩ : BufTy).Contents (Elt Ideal))
    (x24 : (⟨S128x128, .f32⟩ : BufTy).Contents (Elt Ideal))
    (x25 : (⟨S128, .f32⟩ : BufTy).Contents (Elt Ideal))
    (x26 : (⟨S128x1, .f32⟩ : BufTy).Contents (Elt Ideal))
    (x27 : (⟨S1, .f32⟩ : BufTy).Contents (Elt Ideal))
    (hroot : V (Proc.devRef .tc main_v338) = val_main_v338 (F := Ideal) x0 x1 x2 x3 x4 x5 x6 x7 x8 x9 x10 x11 x12 x13 x14 x15 x16 x17 x18 x19 x20 x21)
    (h22 : V (Proc.devRef .tc main_arg22) = x22) (h23 : V (Proc.devRef .tc main_arg23) = x23) (h24 : V (Proc.devRef .tc main_arg24) = x24) (h25 : V (Proc.devRef .tc main_arg25) = x25) (h26 : V (Proc.devRef .tc main_arg26) = x26) (h27 : V (Proc.devRef .tc main_arg27) = x27) :
    after ops7 V (Proc.devRef .tc main_v358) = val_main_v358 (F := Ideal) x0 x1 x2 x3 x4 x5 x6 x7 x8 x9 x10 x11 x12 x13 x14 x15 x16 x17 x18 x19 x20 x21 x22 x23 x24 x25 x26 x27 := by
  subst h22 h23 h24 h25 h26 h27
  after_results_simp
  rw [hroot]
  rfl

theorem ops7_main_v378 (V : Valuation τ sig (Elt Ideal))
    (x0 x1 : (⟨S64512x32, .f32⟩ : BufTy).Contents (Elt Ideal))
    (x2 : (⟨S64512x1000, .f32⟩ : BufTy).Contents (Elt Ideal))
    (x3 x4 : (⟨S64512x4x64, .f32⟩ : BufTy).Contents (Elt Ideal))
    (x5 : (⟨S64512, .f32⟩ : BufTy).Contents (Elt Ideal))
    (x6 x7 : (⟨S64512, .i32⟩ : BufTy).Contents (Elt Ideal))
    (x8 : (⟨S32x128, .f32⟩ : BufTy).Contents (Elt Ideal))
    (x9 : (⟨S128, .f32⟩ : BufTy).Contents (Elt Ideal))
    (x10 : (⟨S32x128, .f32⟩ : BufTy).Contents (Elt Ideal))
    (x11 : (⟨S128, .f32⟩ : BufTy).Contents (Elt Ideal))
    (x12 : (⟨S1000x128, .f32⟩ : BufTy).Contents (Elt Ideal))
    (x13 : (⟨S128, .f32⟩ : BufTy).Contents (Elt Ideal))
    (x14 : (⟨S64x128, .f32⟩ : BufTy).Contents (Elt Ideal))
    (x15 : (⟨S128, .f32⟩ : BufTy).Contents (Elt Ideal))
    (x16 : (⟨S1408x512, .f32⟩ : BufTy).Contents (Elt Ideal))
    (x17 : (⟨S512, .f32⟩ : BufTy).Contents (Elt Ideal))
    (x18 : (⟨S512x256, .f32⟩ : BufTy).Contents (Elt Ideal))
    (x19 : (⟨S256, .f32⟩ : BufTy).Contents (Elt Ideal))
    (x20 : (⟨S256x128, .f32⟩ : BufTy).Contents (Elt Ideal))
    (x21 : (⟨S128, .f32⟩ : BufTy).Contents (Elt Ideal))
    (x28 : (⟨S128x128, .f32⟩ : BufTy).Contents (Elt Ideal))
    (x29 : (⟨S128, .f32⟩ : BufTy).Contents (Elt Ideal))
    (x30 : (⟨S128x128, .f32⟩ : BufTy).Contents (Elt Ideal))
    (x31 : (⟨S128, .f32⟩ : BufTy).Contents (Elt Ideal))
    (x32 : (⟨S128x1, .f32⟩ : BufTy).Contents (Elt Ideal))
    (x33 : (⟨S1, .f32⟩ : BufTy).Contents (Elt Ideal))
    (hroot : V (Proc.devRef .tc main_v338) = val_main_v338 (F := Ideal) x0 x1 x2 x3 x4 x5 x6 x7 x8 x9 x10 x11 x12 x13 x14 x15 x16 x17 x18 x19 x20 x21)
    (h28 : V (Proc.devRef .tc main_arg28) = x28) (h29 : V (Proc.devRef .tc main_arg29) = x29) (h30 : V (Proc.devRef .tc main_arg30) = x30) (h31 : V (Proc.devRef .tc main_arg31) = x31) (h32 : V (Proc.devRef .tc main_arg32) = x32) (h33 : V (Proc.devRef .tc main_arg33) = x33) :
    after ops7 V (Proc.devRef .tc main_v378) = val_main_v378 (F := Ideal) x0 x1 x2 x3 x4 x5 x6 x7 x8 x9 x10 x11 x12 x13 x14 x15 x16 x17 x18 x19 x20 x21 x28 x29 x30 x31 x32 x33 := by
  subst h28 h29 h30 h31 h32 h33
  after_results_simp
  rw [hroot]
  rfl

theorem chunk7 (V : Valuation τ sig (Elt Ideal))
    (x0 x1 : (⟨S64512x32, .f32⟩ : BufTy).Contents (Elt Ideal))
    (x2 : (⟨S64512x1000, .f32⟩ : BufTy).Contents (Elt Ideal))
    (x3 x4 : (⟨S64512x4x64, .f32⟩ : BufTy).Contents (Elt Ideal))
    (x5 : (⟨S64512, .f32⟩ : BufTy).Contents (Elt Ideal))
    (x6 x7 : (⟨S64512, .i32⟩ : BufTy).Contents (Elt Ideal))
    (x8 : (⟨S32x128, .f32⟩ : BufTy).Contents (Elt Ideal))
    (x9 : (⟨S128, .f32⟩ : BufTy).Contents (Elt Ideal))
    (x10 : (⟨S32x128, .f32⟩ : BufTy).Contents (Elt Ideal))
    (x11 : (⟨S128, .f32⟩ : BufTy).Contents (Elt Ideal))
    (x12 : (⟨S1000x128, .f32⟩ : BufTy).Contents (Elt Ideal))
    (x13 : (⟨S128, .f32⟩ : BufTy).Contents (Elt Ideal))
    (x14 : (⟨S64x128, .f32⟩ : BufTy).Contents (Elt Ideal))
    (x15 : (⟨S128, .f32⟩ : BufTy).Contents (Elt Ideal))
    (x16 : (⟨S1408x512, .f32⟩ : BufTy).Contents (Elt Ideal))
    (x17 : (⟨S512, .f32⟩ : BufTy).Contents (Elt Ideal))
    (x18 : (⟨S512x256, .f32⟩ : BufTy).Contents (Elt Ideal))
    (x19 : (⟨S256, .f32⟩ : BufTy).Contents (Elt Ideal))
    (x20 : (⟨S256x128, .f32⟩ : BufTy).Contents (Elt Ideal))
    (x21 : (⟨S128, .f32⟩ : BufTy).Contents (Elt Ideal))
    (x22 : (⟨S128x128, .f32⟩ : BufTy).Contents (Elt Ideal))
    (x23 : (⟨S128, .f32⟩ : BufTy).Contents (Elt Ideal))
    (x24 : (⟨S128x128, .f32⟩ : BufTy).Contents (Elt Ideal))
    (x25 : (⟨S128, .f32⟩ : BufTy).Contents (Elt Ideal))
    (x26 : (⟨S128x1, .f32⟩ : BufTy).Contents (Elt Ideal))
    (x27 : (⟨S1, .f32⟩ : BufTy).Contents (Elt Ideal))
    (x28 : (⟨S128x128, .f32⟩ : BufTy).Contents (Elt Ideal))
    (x29 : (⟨S128, .f32⟩ : BufTy).Contents (Elt Ideal))
    (x30 : (⟨S128x128, .f32⟩ : BufTy).Contents (Elt Ideal))
    (x31 : (⟨S128, .f32⟩ : BufTy).Contents (Elt Ideal))
    (x32 : (⟨S128x1, .f32⟩ : BufTy).Contents (Elt Ideal))
    (x33 : (⟨S1, .f32⟩ : BufTy).Contents (Elt Ideal))
    (hroot : V (Proc.devRef .tc main_v338) = val_main_v338 (F := Ideal) x0 x1 x2 x3 x4 x5 x6 x7 x8 x9 x10 x11 x12 x13 x14 x15 x16 x17 x18 x19 x20 x21)
    (h22 : V (Proc.devRef .tc main_arg22) = x22) (h23 : V (Proc.devRef .tc main_arg23) = x23) (h24 : V (Proc.devRef .tc main_arg24) = x24) (h25 : V (Proc.devRef .tc main_arg25) = x25) (h26 : V (Proc.devRef .tc main_arg26) = x26) (h27 : V (Proc.devRef .tc main_arg27) = x27)
    (h28 : V (Proc.devRef .tc main_arg28) = x28) (h29 : V (Proc.devRef .tc main_arg29) = x29) (h30 : V (Proc.devRef .tc main_arg30) = x30) (h31 : V (Proc.devRef .tc main_arg31) = x31) (h32 : V (Proc.devRef .tc main_arg32) = x32) (h33 : V (Proc.devRef .tc main_arg33) = x33) :
    after ops7 V (Proc.devRef .tc main_v358) = val_main_v358 (F := Ideal) x0 x1 x2 x3 x4 x5 x6 x7 x8 x9 x10 x11 x12 x13 x14 x15 x16 x17 x18 x19 x20 x21 x22 x23 x24 x25 x26 x27
    ∧ after ops7 V (Proc.devRef .tc main_v378) = val_main_v378 (F := Ideal) x0 x1 x2 x3 x4 x5 x6 x7 x8 x9 x10 x11 x12 x13 x14 x15 x16 x17 x18 x19 x20 x21 x28 x29 x30 x31 x32 x33 :=
  ⟨ops7_main_v358 V x0 x1 x2 x3 x4 x5 x6 x7 x8 x9 x10 x11 x12 x13 x14 x15 x16 x17 x18 x19 x20 x21 x22 x23 x24 x25 x26 x27 hroot h22 h23 h24 h25 h26 h27,
   ops7_main_v378 V x0 x1 x2 x3 x4 x5 x6 x7 x8 x9 x10 x11 x12 x13 x14 x15 x16 x17 x18 x19 x20 x21 x28 x29 x30 x31 x32 x33 hroot h28 h29 h30 h31 h32 h33⟩

end Cert.ReferenceIdeal.StagedRun
-- ==== Proof.RefRun.lean ====
import proofs.«410031_j84061099917532_3_alg».proof.Proof.RefRunBase
import proofs.«410031_j84061099917532_3_alg».proof.Proof.RefChunk0
import proofs.«410031_j84061099917532_3_alg».proof.Proof.RefChunk1
import proofs.«410031_j84061099917532_3_alg».proof.Proof.RefChunk2
import proofs.«410031_j84061099917532_3_alg».proof.Proof.RefChunk3
import proofs.«410031_j84061099917532_3_alg».proof.Proof.RefChunk4
import proofs.«410031_j84061099917532_3_alg».proof.Proof.RefChunk5
import proofs.«410031_j84061099917532_3_alg».proof.Proof.RefChunk6
import proofs.«410031_j84061099917532_3_alg».proof.Proof.RefChunk7

noncomputable section

namespace Cert.ReferenceIdeal.StagedRun

open Cert.ReferenceIdeal Cert.ReferenceIdeal.Gen Cert.ReferenceIdeal.Stages Idealize.ShloMosaic Idealize.ShloMosaic.TcCoe Idealize.SL.Sem Idealize.ShloMosaic.StableHlo

theorem after_kept (V : Valuation τ sig (Elt Ideal)) (b : Ref sig .tc) (h0 : b ∉ written0) (h1 : b ∉ written1) (h2 : b ∉ written2) (h3 : b ∉ written3) (h4 : b ∉ written4) (h5 : b ∉ written5) (h6 : b ∉ written6) (h7 : b ∉ written7) :
    after ops V (Proc.devRef .tc b) = V (Proc.devRef .tc b) := by
  rw [after_ops]
  exact (kept7 _ b h7).trans ((kept6 _ b h6).trans ((kept5 _ b h5).trans ((kept4 _ b h4).trans ((kept3 _ b h3).trans ((kept2 _ b h2).trans ((kept1 _ b h1).trans (kept0 _ b h0)))))))

theorem after_arg0 (V : Valuation τ sig (Elt Ideal)) : after ops V (Proc.devRef .tc main_arg0) = V (Proc.devRef .tc main_arg0) :=
  after_kept V main_arg0 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg1 (V : Valuation τ sig (Elt Ideal)) : after ops V (Proc.devRef .tc main_arg1) = V (Proc.devRef .tc main_arg1) :=
  after_kept V main_arg1 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg2 (V : Valuation τ sig (Elt Ideal)) : after ops V (Proc.devRef .tc main_arg2) = V (Proc.devRef .tc main_arg2) :=
  after_kept V main_arg2 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg3 (V : Valuation τ sig (Elt Ideal)) : after ops V (Proc.devRef .tc main_arg3) = V (Proc.devRef .tc main_arg3) :=
  after_kept V main_arg3 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg4 (V : Valuation τ sig (Elt Ideal)) : after ops V (Proc.devRef .tc main_arg4) = V (Proc.devRef .tc main_arg4) :=
  after_kept V main_arg4 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg5 (V : Valuation τ sig (Elt Ideal)) : after ops V (Proc.devRef .tc main_arg5) = V (Proc.devRef .tc main_arg5) :=
  after_kept V main_arg5 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg6 (V : Valuation τ sig (Elt Ideal)) : after ops V (Proc.devRef .tc main_arg6) = V (Proc.devRef .tc main_arg6) :=
  after_kept V main_arg6 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg7 (V : Valuation τ sig (Elt Ideal)) : after ops V (Proc.devRef .tc main_arg7) = V (Proc.devRef .tc main_arg7) :=
  after_kept V main_arg7 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg8 (V : Valuation τ sig (Elt Ideal)) : after ops V (Proc.devRef .tc main_arg8) = V (Proc.devRef .tc main_arg8) :=
  after_kept V main_arg8 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg9 (V : Valuation τ sig (Elt Ideal)) : after ops V (Proc.devRef .tc main_arg9) = V (Proc.devRef .tc main_arg9) :=
  after_kept V main_arg9 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg10 (V : Valuation τ sig (Elt Ideal)) : after ops V (Proc.devRef .tc main_arg10) = V (Proc.devRef .tc main_arg10) :=
  after_kept V main_arg10 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg11 (V : Valuation τ sig (Elt Ideal)) : after ops V (Proc.devRef .tc main_arg11) = V (Proc.devRef .tc main_arg11) :=
  after_kept V main_arg11 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg12 (V : Valuation τ sig (Elt Ideal)) : after ops V (Proc.devRef .tc main_arg12) = V (Proc.devRef .tc main_arg12) :=
  after_kept V main_arg12 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg13 (V : Valuation τ sig (Elt Ideal)) : after ops V (Proc.devRef .tc main_arg13) = V (Proc.devRef .tc main_arg13) :=
  after_kept V main_arg13 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg14 (V : Valuation τ sig (Elt Ideal)) : after ops V (Proc.devRef .tc main_arg14) = V (Proc.devRef .tc main_arg14) :=
  after_kept V main_arg14 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg15 (V : Valuation τ sig (Elt Ideal)) : after ops V (Proc.devRef .tc main_arg15) = V (Proc.devRef .tc main_arg15) :=
  after_kept V main_arg15 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg16 (V : Valuation τ sig (Elt Ideal)) : after ops V (Proc.devRef .tc main_arg16) = V (Proc.devRef .tc main_arg16) :=
  after_kept V main_arg16 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg17 (V : Valuation τ sig (Elt Ideal)) : after ops V (Proc.devRef .tc main_arg17) = V (Proc.devRef .tc main_arg17) :=
  after_kept V main_arg17 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg18 (V : Valuation τ sig (Elt Ideal)) : after ops V (Proc.devRef .tc main_arg18) = V (Proc.devRef .tc main_arg18) :=
  after_kept V main_arg18 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg19 (V : Valuation τ sig (Elt Ideal)) : after ops V (Proc.devRef .tc main_arg19) = V (Proc.devRef .tc main_arg19) :=
  after_kept V main_arg19 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg20 (V : Valuation τ sig (Elt Ideal)) : after ops V (Proc.devRef .tc main_arg20) = V (Proc.devRef .tc main_arg20) :=
  after_kept V main_arg20 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg21 (V : Valuation τ sig (Elt Ideal)) : after ops V (Proc.devRef .tc main_arg21) = V (Proc.devRef .tc main_arg21) :=
  after_kept V main_arg21 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg22 (V : Valuation τ sig (Elt Ideal)) : after ops V (Proc.devRef .tc main_arg22) = V (Proc.devRef .tc main_arg22) :=
  after_kept V main_arg22 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg23 (V : Valuation τ sig (Elt Ideal)) : after ops V (Proc.devRef .tc main_arg23) = V (Proc.devRef .tc main_arg23) :=
  after_kept V main_arg23 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg24 (V : Valuation τ sig (Elt Ideal)) : after ops V (Proc.devRef .tc main_arg24) = V (Proc.devRef .tc main_arg24) :=
  after_kept V main_arg24 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg25 (V : Valuation τ sig (Elt Ideal)) : after ops V (Proc.devRef .tc main_arg25) = V (Proc.devRef .tc main_arg25) :=
  after_kept V main_arg25 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg26 (V : Valuation τ sig (Elt Ideal)) : after ops V (Proc.devRef .tc main_arg26) = V (Proc.devRef .tc main_arg26) :=
  after_kept V main_arg26 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg27 (V : Valuation τ sig (Elt Ideal)) : after ops V (Proc.devRef .tc main_arg27) = V (Proc.devRef .tc main_arg27) :=
  after_kept V main_arg27 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg28 (V : Valuation τ sig (Elt Ideal)) : after ops V (Proc.devRef .tc main_arg28) = V (Proc.devRef .tc main_arg28) :=
  after_kept V main_arg28 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg29 (V : Valuation τ sig (Elt Ideal)) : after ops V (Proc.devRef .tc main_arg29) = V (Proc.devRef .tc main_arg29) :=
  after_kept V main_arg29 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg30 (V : Valuation τ sig (Elt Ideal)) : after ops V (Proc.devRef .tc main_arg30) = V (Proc.devRef .tc main_arg30) :=
  after_kept V main_arg30 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg31 (V : Valuation τ sig (Elt Ideal)) : after ops V (Proc.devRef .tc main_arg31) = V (Proc.devRef .tc main_arg31) :=
  after_kept V main_arg31 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg32 (V : Valuation τ sig (Elt Ideal)) : after ops V (Proc.devRef .tc main_arg32) = V (Proc.devRef .tc main_arg32) :=
  after_kept V main_arg32 (not_mem_of_key (by decide)) (not_mem_of_key (by decide)) (not_mem_of_key (by decide)) (not_mem_of_key (by decide)) (not_mem_of_key (by decide)) (not_mem_of_key (by decide)) (not_mem_of_key (by decide)) (not_mem_of_key (by decide))
theorem after_arg33 (V : Valuation τ sig (Elt Ideal)) : after ops V (Proc.devRef .tc main_arg33) = V (Proc.devRef .tc main_arg33) :=
  after_kept V main_arg33 (not_mem_of_key (by decide)) (not_mem_of_key (by decide)) (not_mem_of_key (by decide)) (not_mem_of_key (by decide)) (not_mem_of_key (by decide)) (not_mem_of_key (by decide)) (not_mem_of_key (by decide)) (not_mem_of_key (by decide))

variable (x0 : (⟨S64512x32, .f32⟩ : BufTy).Contents (Elt Ideal)) (x1 : (⟨S64512x32, .f32⟩ : BufTy).Contents (Elt Ideal)) (x2 : (⟨S64512x1000, .f32⟩ : BufTy).Contents (Elt Ideal)) (x3 : (⟨S64512x4x64, .f32⟩ : BufTy).Contents (Elt Ideal)) (x4 : (⟨S64512x4x64, .f32⟩ : BufTy).Contents (Elt Ideal)) (x5 : (⟨S64512, .f32⟩ : BufTy).Contents (Elt Ideal)) (x6 : (⟨S64512, .i32⟩ : BufTy).Contents (Elt Ideal)) (x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x1, .f32⟩ : BufTy).Contents (Elt Ideal)) (x27 : (⟨S1, .f32⟩ : BufTy).Contents (Elt Ideal)) (x28 : (⟨S128x128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x1, .f32⟩ : BufTy).Contents (Elt Ideal)) (x33 : (⟨S1, .f32⟩ : BufTy).Contents (Elt Ideal))

theorem results_after (V : Valuation τ sig (Elt Ideal))
    (h0 : V (Proc.devRef .tc main_arg0) = x0) (h1 : V (Proc.devRef .tc main_arg1) = x1) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) (h10 : V (Proc.devRef .tc main_arg10) = x10) (h11 : V (Proc.devRef .tc main_arg11) = x11) (h12 : V (Proc.devRef .tc main_arg12) = x12) (h13 : V (Proc.devRef .tc main_arg13) = x13) (h14 : V (Proc.devRef .tc main_arg14) = x14) (h15 : V (Proc.devRef .tc main_arg15) = x15) (h16 : V (Proc.devRef .tc main_arg16) = x16) (h17 : V (Proc.devRef .tc main_arg17) = x17) (h18 : V (Proc.devRef .tc main_arg18) = x18) (h19 : V (Proc.devRef .tc main_arg19) = x19) (h20 : V (Proc.devRef .tc main_arg20) = x20) (h21 : V (Proc.devRef .tc main_arg21) = x21) (h22 : V (Proc.devRef .tc main_arg22) = x22) (h23 : V (Proc.devRef .tc main_arg23) = x23) (h24 : V (Proc.devRef .tc main_arg24) = x24) (h25 : V (Proc.devRef .tc main_arg25) = x25) (h26 : V (Proc.devRef .tc main_arg26) = x26) (h27 : V (Proc.devRef .tc main_arg27) = x27) (h28 : V (Proc.devRef .tc main_arg28) = x28) (h29 : V (Proc.devRef .tc main_arg29) = x29) (h30 : V (Proc.devRef .tc main_arg30) = x30) (h31 : V (Proc.devRef .tc main_arg31) = x31) (h32 : V (Proc.devRef .tc main_arg32) = x32) (h33 : V (Proc.devRef .tc main_arg33) = x33) :
    after ops V (Proc.devRef .tc main_v358) = val_main_v358 (F := Ideal) x0 x1 x2 x3 x4 x5 x6 x7 x8 x9 x10 x11 x12 x13 x14 x15 x16 x17 x18 x19 x20 x21 x22 x23 x24 x25 x26 x27
      ∧ after ops V (Proc.devRef .tc main_v378) = val_main_v378 (F := Ideal) x0 x1 x2 x3 x4 x5 x6 x7 x8 x9 x10 x11 x12 x13 x14 x15 x16 x17 x18 x19 x20 x21 x28 x29 x30 x31 x32 x33 := by
  rw [after_ops]
  obtain ⟨e3, e7, e14, e19, e24, e25, e26⟩ := chunk0 V x0 x1 x2 x3 x4 x5 x6 x7 x8 x9 x10 x11 x12 x13 x14 x15 h0 h1 h2 h3 h4 h5 h6 h7 h8 h9 h10 h11 h12 h13 h14 h15
  have B1 : Base x0 x1 x2 x3 x4 x5 x6 x7 x8 x9 x10 x11 x12 x13 x14 x15 x16 x17 x18 x19 x20 x21 x22 x23 x24 x25 x26 x27 x28 x29 x30 x31 x32 x33 (after ops0 V) :=
    ⟨e3, e7, e14, e19, e24, e25, e26, (kept0 V main_arg16 (not_mem_of_key (by decide))).trans h16,
      (kept0 V main_arg17 (not_mem_of_key (by decide))).trans h17,
      (kept0 V main_arg18 (not_mem_of_key (by decide))).trans h18,
      (kept0 V main_arg19 (not_mem_of_key (by decide))).trans h19,
      (kept0 V main_arg20 (not_mem_of_key (by decide))).trans h20,
      (kept0 V main_arg21 (not_mem_of_key (by decide))).trans h21,
      (kept0 V main_arg22 (not_mem_of_key (by decide))).trans h22,
      (kept0 V main_arg23 (not_mem_of_key (by decide))).trans h23,
      (kept0 V main_arg24 (not_mem_of_key (by decide))).trans h24,
      (kept0 V main_arg25 (not_mem_of_key (by decide))).trans h25,
      (kept0 V main_arg26 (not_mem_of_key (by decide))).trans h26,
      (kept0 V main_arg27 (not_mem_of_key (by decide))).trans h27,
      (kept0 V main_arg28 (not_mem_of_key (by decide))).trans h28,
      (kept0 V main_arg29 (not_mem_of_key (by decide))).trans h29,
      (kept0 V main_arg30 (not_mem_of_key (by decide))).trans h30,
      (kept0 V main_arg31 (not_mem_of_key (by decide))).trans h31,
      (kept0 V main_arg32 (not_mem_of_key (by decide))).trans h32,
      (kept0 V main_arg33 (not_mem_of_key (by decide))).trans h33⟩
  obtain ⟨r5, z5⟩ := chunk1 (after ops0 V) x0 x1 x2 x3 x4 x5 x8 x9 x10 x11 x12 x13 x14 x15 x16 x17 x18 x19 x20 x21 B1.e3 B1.e7 B1.e19 B1.e24 B1.e14 B1.a16 B1.a17 B1.a18 B1.a19 B1.a20 B1.a21
  have B2 := B1.step1
  obtain ⟨r4, l4, q4⟩ := chunk2 (h3 := B2.e3) (h7 := B2.e7) (h19 := B2.e19) (h24 := B2.e24) (h14 := B2.e14) (h25 := B2.e25) (h26 := B2.e26) (hrep := r5) (hl := z5) (hr := z5) (h16 := B2.a16) (h17 := B2.a17) (h18 := B2.a18) (h19a := B2.a19) (h20 := B2.a20) (h21 := B2.a21)
  have B3 := B2.step2
  obtain ⟨r3, l3, q3⟩ := chunk3 (h3 := B3.e3) (h7 := B3.e7) (h19 := B3.e19) (h24 := B3.e24) (h14 := B3.e14) (h25 := B3.e25) (h26 := B3.e26) (hrep := r4) (hl := l4) (hr := q4) (h16 := B3.a16) (h17 := B3.a17) (h18 := B3.a18) (h19a := B3.a19) (h20 := B3.a20) (h21 := B3.a21)
  have B4 := B3.step3
  obtain ⟨r2, l2, q2⟩ := chunk4 (h3 := B4.e3) (h7 := B4.e7) (h19 := B4.e19) (h24 := B4.e24) (h14 := B4.e14) (h25 := B4.e25) (h26 := B4.e26) (hrep := r3) (hl := l3) (hr := q3) (h16 := B4.a16) (h17 := B4.a17) (h18 := B4.a18) (h19a := B4.a19) (h20 := B4.a20) (h21 := B4.a21)
  have B5 := B4.step4
  obtain ⟨r1, l1, q1⟩ := chunk5 (h3 := B5.e3) (h7 := B5.e7) (h19 := B5.e19) (h24 := B5.e24) (h14 := B5.e14) (h25 := B5.e25) (h26 := B5.e26) (hrep := r2) (hl := l2) (hr := q2) (h16 := B5.a16) (h17 := B5.a17) (h18 := B5.a18) (h19a := B5.a19) (h20 := B5.a20) (h21 := B5.a21)
  have B6 := B5.step5
  obtain ⟨r0, l0, q0⟩ := chunk6 (h3 := B6.e3) (h7 := B6.e7) (h19 := B6.e19) (h24 := B6.e24) (h14 := B6.e14) (h25 := B6.e25) (h26 := B6.e26) (hrep := r1) (hl := l1) (hr := q1) (h16 := B6.a16) (h17 := B6.a17) (h18 := B6.a18) (h19a := B6.a19) (h20 := B6.a20) (h21 := B6.a21)
  have B7 := B6.step6
  exact chunk7 _ x0 x1 x2 x3 x4 x5 x6 x7 x8 x9 x10 x11 x12 x13 x14 x15 x16 x17 x18 x19 x20 x21 x22 x23 x24 x25 x26 x27 x28 x29 x30 x31 x32 x33 r0 B7.a22 B7.a23 B7.a24 B7.a25 B7.a26 B7.a27 B7.a28 B7.a29 B7.a30 B7.a31 B7.a32 B7.a33

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v358) = val_main_v358 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧ r.2.mem ((c.tc : Thread nD τ).loc main_v378) = val_main_v378 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33) :=
  (θ_run defs _ _).mono (fun _ h c =>
    have R := results_after (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (launchContents m c) (launch_at m c main_arg0) (launch_at m c main_arg1) (launch_at m c main_arg2) (launch_at m c main_arg3) (launch_at m c main_arg4) (launch_at m c main_arg5) (launch_at m c main_arg6) (launch_at m c main_arg7) (launch_at m c main_arg8) (launch_at m c main_arg9) (launch_at m c main_arg10) (launch_at m c main_arg11) (launch_at m c main_arg12) (launch_at m c main_arg13) (launch_at m c main_arg14) (launch_at m c main_arg15) (launch_at m c main_arg16) (launch_at m c main_arg17) (launch_at m c main_arg18) (launch_at m c main_arg19) (launch_at m c main_arg20) (launch_at m c main_arg21) (launch_at m c main_arg22) (launch_at m c main_arg23) (launch_at m c main_arg24) (launch_at m c main_arg25) (launch_at m c main_arg26) (launch_at m c main_arg27) (launch_at m c main_arg28) (launch_at m c main_arg29) (launch_at m c main_arg30) (launch_at m c main_arg31) (launch_at m c main_arg32) (launch_at m c main_arg33)
    ⟨(h c main_v358).trans R.1, (h c main_v378).trans R.2,
      (h c main_arg0).trans ((after_arg0 (launchContents m c)).trans (launch_at m c main_arg0)),
      (h c main_arg1).trans ((after_arg1 (launchContents m c)).trans (launch_at m c main_arg1)),
      (h c main_arg2).trans ((after_arg2 (launchContents m c)).trans (launch_at m c main_arg2)),
      (h c main_arg3).trans ((after_arg3 (launchContents m c)).trans (launch_at m c main_arg3)),
      (h c main_arg4).trans ((after_arg4 (launchContents m c)).trans (launch_at m c main_arg4)),
      (h c main_arg5).trans ((after_arg5 (launchContents m c)).trans (launch_at m c main_arg5)),
      (h c main_arg6).trans ((after_arg6 (launchContents m c)).trans (launch_at m c main_arg6)),
      (h c main_arg7).trans ((after_arg7 (launchContents m c)).trans (launch_at m c main_arg7)),
      (h c main_arg8).trans ((after_arg8 (launchContents m c)).trans (launch_at m c main_arg8)),
      (h c main_arg9).trans ((after_arg9 (launchContents m c)).trans (launch_at m c main_arg9)),
      (h c main_arg10).trans ((after_arg10 (launchContents m c)).trans (launch_at m c main_arg10)),
      (h c main_arg11).trans ((after_arg11 (launchContents m c)).trans (launch_at m c main_arg11)),
      (h c main_arg12).trans ((after_arg12 (launchContents m c)).trans (launch_at m c main_arg12)),
      (h c main_arg13).trans ((after_arg13 (launchContents m c)).trans (launch_at m c main_arg13)),
      (h c main_arg14).trans ((after_arg14 (launchContents m c)).trans (launch_at m c main_arg14)),
      (h c main_arg15).trans ((after_arg15 (launchContents m c)).trans (launch_at m c main_arg15)),
      (h c main_arg16).trans ((after_arg16 (launchContents m c)).trans (launch_at m c main_arg16)),
      (h c main_arg17).trans ((after_arg17 (launchContents m c)).trans (launch_at m c main_arg17)),
      (h c main_arg18).trans ((after_arg18 (launchContents m c)).trans (launch_at m c main_arg18)),
      (h c main_arg19).trans ((after_arg19 (launchContents m c)).trans (launch_at m c main_arg19)),
      (h c main_arg20).trans ((after_arg20 (launchContents m c)).trans (launch_at m c main_arg20)),
      (h c main_arg21).trans ((after_arg21 (launchContents m c)).trans (launch_at m c main_arg21)),
      (h c main_arg22).trans ((after_arg22 (launchContents m c)).trans (launch_at m c main_arg22)),
      (h c main_arg23).trans ((after_arg23 (launchContents m c)).trans (launch_at m c main_arg23)),
      (h c main_arg24).trans ((after_arg24 (launchContents m c)).trans (launch_at m c main_arg24)),
      (h c main_arg25).trans ((after_arg25 (launchContents m c)).trans (launch_at m c main_arg25)),
      (h c main_arg26).trans ((after_arg26 (launchContents m c)).trans (launch_at m c main_arg26)),
      (h c main_arg27).trans ((after_arg27 (launchContents m c)).trans (launch_at m c main_arg27)),
      (h c main_arg28).trans ((after_arg28 (launchContents m c)).trans (launch_at m c main_arg28)),
      (h c main_arg29).trans ((after_arg29 (launchContents m c)).trans (launch_at m c main_arg29)),
      (h c main_arg30).trans ((after_arg30 (launchContents m c)).trans (launch_at m c main_arg30)),
      (h c main_arg31).trans ((after_arg31 (launchContents m c)).trans (launch_at m c main_arg31)),
      (h c main_arg32).trans ((after_arg32 (launchContents m c)).trans (launch_at m c main_arg32)),
      (h c main_arg33).trans ((after_arg33 (launchContents m c)).trans (launch_at m c main_arg33))⟩)
    (run_after m ρ)

end Cert.ReferenceIdeal.StagedRun

end
-- ==== Proof.Spec.lean ====
import Idealize.ShloMosaic.PureOps.Ideal
import Idealize.ShloMosaic.PureOps.Ideal.Laws
import Idealize.ShloMosaic.Lib.ValueIdx

noncomputable section

open Idealize.ShloMosaic

namespace TreeNN

def mat {a b : ℕ} (x : (⟨2, ![a, b]⟩ : Shape).Idx → EReal) : Fin a → Fin b → EReal := fun i j => x (ValueIdx.ix2 i j)

def vec {a : ℕ} (x : (⟨1, ![a]⟩ : Shape).Idx → EReal) : Fin a → EReal := fun i => x (ValueIdx.ix1 i)

def row {b : ℕ} (x : (⟨2, ![1, b]⟩ : Shape).Idx → EReal) : Fin b → EReal := fun j => x (ValueIdx.ix2 0 j)

def col {a : ℕ} (x : (⟨2, ![a, 1]⟩ : Shape).Idx → EReal) : Fin a → EReal := fun i => x (ValueIdx.ix2 i 0)

def ten3 {a b c : ℕ} (x : (⟨3, ![a, b, c]⟩ : Shape).Idx → EReal) : Fin a → Fin b → Fin c → EReal :=
  fun i s j => x (ValueIdx.ix3 i s j)

def arr2 {a b : ℕ} (f : Fin a → Fin b → EReal) : (⟨2, ![a, b]⟩ : Shape).Idx → EReal := fun y => f (y 0) (y 1)

theorem arr2_ix2 {a b : ℕ} (f : Fin a → Fin b → EReal) (i : Fin a) (j : Fin b) : arr2 f (ValueIdx.ix2 i j) = f i j := rfl

theorem ext2 {a b : ℕ} {x y : (⟨2, ![a, b]⟩ : Shape).Idx → EReal}
    (h : ∀ (i : Fin a) (j : Fin b), x (ValueIdx.ix2 i j) = y (ValueIdx.ix2 i j)) : x = y := by
  funext z; rw [ValueIdx.eq_ix2 z]; exact h _ _

def dense {K M : ℕ} (x : Fin K → EReal) (W : Fin K → Fin M → EReal) (b : Fin M → EReal) : Fin M → EReal :=
  fun j => (∑ k : Fin K, x k * W k j) + b j

def relu {M : ℕ} (x : Fin M → EReal) : Fin M → EReal := fun j => max (x j) 0

structure MLP3 where
  W1 : Fin 1408 → Fin 512 → EReal
  b1 : Fin 512 → EReal
  W2 : Fin 512 → Fin 256 → EReal
  b2 : Fin 256 → EReal
  W3 : Fin 256 → Fin 128 → EReal
  b3 : Fin 128 → EReal

def MLP3.apply (p : MLP3) (x : Fin 1408 → EReal) : Fin 128 → EReal :=
  relu (dense (relu (dense (relu (dense x p.W1 p.b1)) p.W2 p.b2)) p.W3 p.b3)

def cat11 (pc : Fin 11 → Fin 128 → EReal) : Fin 1408 → EReal :=
  fun k => pc ⟨k.val / 128, by omega⟩ ⟨k.val % 128, by omega⟩

def pieces (e : Fin 5 → Fin 128 → EReal) (ch : Fin 6 → Fin 128 → EReal) : Fin 11 → Fin 128 → EReal :=
  fun q => if h : q.val < 5 then e ⟨q.val, h⟩ else ch ⟨q.val - 5, by omega⟩

def childPieces (l r : EReal) (crep clrep crrep : Fin 2 → Fin 128 → EReal) : Fin 6 → Fin 128 → EReal :=
  ![fun j => crep 0 j * l, fun j => crep 1 j * r, fun j => clrep 0 j * l, fun j => crrep 0 j * l,
    fun j => clrep 1 j * r, fun j => crrep 1 j * r]

def nodeRep (p : MLP3) (e : Fin 5 → Fin 128 → EReal) (l r : EReal) (crep clrep crrep : Fin 2 → Fin 128 → EReal) :
    Fin 128 → EReal :=
  p.apply (cat11 (pieces e (childPieces l r crep clrep crrep)))

def leafRep (p : MLP3) (e : Fin 5 → Fin 128 → EReal) : Fin 128 → EReal :=
  p.apply (cat11 (pieces e (fun _ _ => 0)))

structure Carry (n : ℕ) where
  rep : Fin n → Fin 128 → EReal
  lrep : Fin n → Fin 128 → EReal
  rrep : Fin n → Fin 128 → EReal

def stepK (n off : ℕ) (hoff : off + n ≤ 64512) (E : Fin 64512 → Fin 5 → Fin 128 → EReal) (lm rm : Fin 64512 → EReal)
    (p : MLP3) (crep clrep crrep : Fin n → Fin 2 → Fin 128 → EReal) : Carry n where
  rep i := nodeRep p (E ⟨off + i.val, by omega⟩) (lm ⟨off + i.val, by omega⟩) (rm ⟨off + i.val, by omega⟩) (crep i) (clrep i) (crrep i)
  lrep i j := crep i 0 j * lm ⟨off + i.val, by omega⟩
  rrep i j := crep i 1 j * rm ⟨off + i.val, by omega⟩

def leafK (E : Fin 64512 → Fin 5 → Fin 128 → EReal) (p : MLP3) : Carry 32768 where
  rep i := leafRep p (E ⟨31744 + i.val, by omega⟩)
  lrep _ _ := 0
  rrep _ _ := 0

def pair {n n2 : ℕ} (h2 : n2 = 2 * n) (f : Fin n2 → Fin 128 → EReal) : Fin n → Fin 2 → Fin 128 → EReal :=
  fun i s j => f ⟨2 * i.val + s.val, by omega⟩ j

def step (n off : ℕ) (hoff : off + n ≤ 64512) {n2 : ℕ} (h2 : n2 = 2 * n) (E : Fin 64512 → Fin 5 → Fin 128 → EReal)
    (lm rm : Fin 64512 → EReal) (p : MLP3) (below : Carry n2) : Carry n :=
  stepK n off hoff E lm rm p (pair h2 below.rep) (pair h2 below.lrep) (pair h2 below.rrep)

def level5 (E : Fin 64512 → Fin 5 → Fin 128 → EReal) (p : MLP3) : Carry 32768 := leafK E p
def level4 (E : Fin 64512 → Fin 5 → Fin 128 → EReal) (lm rm : Fin 64512 → EReal) (p : MLP3) : Carry 16384 :=
  step 16384 15360 (by norm_num) (by norm_num) E lm rm p (level5 E p)
def level3 (E : Fin 64512 → Fin 5 → Fin 128 → EReal) (lm rm : Fin 64512 → EReal) (p : MLP3) : Carry 8192 :=
  step 8192 7168 (by norm_num) (by norm_num) E lm rm p (level4 E lm rm p)
def level2 (E : Fin 64512 → Fin 5 → Fin 128 → EReal) (lm rm : Fin 64512 → EReal) (p : MLP3) : Carry 4096 :=
  step 4096 3072 (by norm_num) (by norm_num) E lm rm p (level3 E lm rm p)
def level1 (E : Fin 64512 → Fin 5 → Fin 128 → EReal) (lm rm : Fin 64512 → EReal) (p : MLP3) : Carry 2048 :=
  step 2048 1024 (by norm_num) (by norm_num) E lm rm p (level2 E lm rm p)
def level0 (E : Fin 64512 → Fin 5 → Fin 128 → EReal) (lm rm : Fin 64512 → EReal) (p : MLP3) : Carry 1024 :=
  step 1024 0 (by norm_num) (by norm_num) E lm rm p (level1 E lm rm p)

def pool (P : Fin 4 → Fin 64 → EReal) (W : Fin 64 → Fin 128 → EReal) (b : Fin 128 → EReal) : Fin 128 → EReal :=
  fun h => min (min (min (dense (P 0) W b h) (dense (P 1) W b h)) (dense (P 2) W b h)) (dense (P 3) W b h)

def poolK (pf : Fin 256 → EReal) (T : Fin 256 → Fin 512 → EReal) (b : Fin 128 → EReal) : Fin 128 → EReal :=
  fun h => min (min (min (∑ k : Fin 256, pf k * T k ⟨128 * 0 + h.val, by omega⟩) (∑ k : Fin 256, pf k * T k ⟨128 * 1 + h.val, by omega⟩))
    (∑ k : Fin 256, pf k * T k ⟨128 * 2 + h.val, by omega⟩)) (∑ k : Fin 256, pf k * T k ⟨128 * 3 + h.val, by omega⟩) + b h

structure EmbW where
  Wop : Fin 32 → Fin 128 → EReal
  bop : Fin 128 → EReal
  Wfeat : Fin 32 → Fin 128 → EReal
  bfeat : Fin 128 → EReal
  Wbm : Fin 1000 → Fin 128 → EReal
  bbm : Fin 128 → EReal
  bpred : Fin 128 → EReal

def emb (w : EmbW) (Wpred : Fin 64 → Fin 128 → EReal) (op feat : Fin 32 → EReal) (bm : Fin 1000 → EReal)
    (p1 p2 : Fin 4 → Fin 64 → EReal) (hc : EReal) : Fin 5 → Fin 128 → EReal :=
  ![dense op w.Wop w.bop, dense feat w.Wfeat w.bfeat, pool p1 Wpred w.bpred, pool p2 Wpred w.bpred,
    fun h => dense bm w.Wbm w.bbm h * hc]

def embK (w : EmbW) (T : Fin 256 → Fin 512 → EReal) (op feat : Fin 32 → EReal) (bm : Fin 1000 → EReal)
    (p1 p2 : Fin 256 → EReal) (hc : EReal) : Fin 5 → Fin 128 → EReal :=
  ![dense op w.Wop w.bop, dense feat w.Wfeat w.bfeat, poolK p1 T w.bpred, poolK p2 T w.bpred,
    fun h => dense bm w.Wbm w.bbm h * hc]

structure HeadW where
  W1 : Fin 128 → Fin 128 → EReal
  b1 : Fin 128 → EReal
  W2 : Fin 128 → Fin 128 → EReal
  b2 : Fin 128 → EReal
  W3 : Fin 128 → Fin 1 → EReal
  b3 : Fin 1 → EReal

def HeadW.apply (p : HeadW) (root : Fin 128 → EReal) : EReal :=
  Ideal.logistic (dense (relu (dense (relu (dense root p.W1 p.b1)) p.W2 p.b2)) p.W3 p.b3 0)

def MLP3.ofTiles (W1 : (⟨2, ![1408, 512]⟩ : Shape).Idx → EReal) (b1 : (⟨2, ![1, 512]⟩ : Shape).Idx → EReal)
    (W2 : (⟨2, ![512, 256]⟩ : Shape).Idx → EReal) (b2 : (⟨2, ![1, 256]⟩ : Shape).Idx → EReal)
    (W3 : (⟨2, ![256, 128]⟩ : Shape).Idx → EReal) (b3 : (⟨2, ![1, 128]⟩ : Shape).Idx → EReal) : MLP3 :=
  ⟨mat W1, row b1, mat W2, row b2, mat W3, row b3⟩

def MLP3.ofArrays (W1 : (⟨2, ![1408, 512]⟩ : Shape).Idx → EReal) (b1 : (⟨1, ![512]⟩ : Shape).Idx → EReal)
    (W2 : (⟨2, ![512, 256]⟩ : Shape).Idx → EReal) (b2 : (⟨1, ![256]⟩ : Shape).Idx → EReal)
    (W3 : (⟨2, ![256, 128]⟩ : Shape).Idx → EReal) (b3 : (⟨1, ![128]⟩ : Shape).Idx → EReal) : MLP3 :=
  ⟨mat W1, vec b1, mat W2, vec b2, mat W3, vec b3⟩

def EmbW.ofTiles (Wop : (⟨2, ![32, 128]⟩ : Shape).Idx → EReal) (bop : (⟨2, ![1, 128]⟩ : Shape).Idx → EReal)
    (Wfeat : (⟨2, ![32, 128]⟩ : Shape).Idx → EReal) (bfeat : (⟨2, ![1, 128]⟩ : Shape).Idx → EReal)
    (Wbm : (⟨2, ![1000, 128]⟩ : Shape).Idx → EReal) (bbm : (⟨2, ![1, 128]⟩ : Shape).Idx → EReal)
    (bpred : (⟨2, ![1, 128]⟩ : Shape).Idx → EReal) : EmbW :=
  ⟨mat Wop, row bop, mat Wfeat, row bfeat, mat Wbm, row bbm, row bpred⟩

def EmbW.ofArrays (Wop : (⟨2, ![32, 128]⟩ : Shape).Idx → EReal) (bop : (⟨1, ![128]⟩ : Shape).Idx → EReal)
    (Wfeat : (⟨2, ![32, 128]⟩ : Shape).Idx → EReal) (bfeat : (⟨1, ![128]⟩ : Shape).Idx → EReal)
    (Wbm : (⟨2, ![1000, 128]⟩ : Shape).Idx → EReal) (bbm : (⟨1, ![128]⟩ : Shape).Idx → EReal)
    (bpred : (⟨1, ![128]⟩ : Shape).Idx → EReal) : EmbW :=
  ⟨mat Wop, vec bop, mat Wfeat, vec bfeat, mat Wbm, vec bbm, vec bpred⟩

def HeadW.ofTiles (W1 : (⟨2, ![128, 128]⟩ : Shape).Idx → EReal) (b1 : (⟨2, ![1, 128]⟩ : Shape).Idx → EReal)
    (W2 : (⟨2, ![128, 128]⟩ : Shape).Idx → EReal) (b2 : (⟨2, ![1, 128]⟩ : Shape).Idx → EReal)
    (W3 : (⟨2, ![128, 1]⟩ : Shape).Idx → EReal) (b3 : (⟨2, ![1, 1]⟩ : Shape).Idx → EReal) : HeadW :=
  ⟨mat W1, row b1, mat W2, row b2, mat W3, row b3⟩

def HeadW.ofArrays (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 1]⟩ : Shape).Idx → EReal) (b3 : (⟨1, ![1]⟩ : Shape).Idx → EReal) : HeadW :=
  ⟨mat W1, vec b1, mat W2, vec b2, mat W3, vec b3⟩

def arrCol {a : ℕ} (f : Fin a → EReal) : (⟨2, ![a, 1]⟩ : Shape).Idx → EReal := fun y => f (y 0)

theorem arrCol_ix2 {a : ℕ} (f : Fin a → EReal) (i : Fin a) : arrCol f (ValueIdx.ix2 i 0) = f i := rfl

theorem extCol {a : ℕ} {x y : (⟨2, ![a, 1]⟩ : Shape).Idx → EReal}
    (h : ∀ i : Fin a, x (ValueIdx.ix2 i 0) = y (ValueIdx.ix2 i 0)) : x = y := by
  funext z
  have hz : z = ValueIdx.ix2 (z 0) 0 := by
    funext d
    match d with
    | ⟨0, _⟩ => rfl
    | ⟨1, _⟩ => exact Fin.ext (Nat.lt_one_iff.mp (z _).isLt)
  rw [hz]; exact h _

def embOfArrays (op feat : (⟨2, ![64512, 32]⟩ : Shape).Idx → EReal) (bm : (⟨2, ![64512, 1000]⟩ : Shape).Idx → EReal)
    (p1 p2 : (⟨3, ![64512, 4, 64]⟩ : Shape).Idx → EReal) (hc : (⟨1, ![64512]⟩ : Shape).Idx → EReal)
    (Wop : (⟨2, ![32, 128]⟩ : Shape).Idx → EReal) (bop : (⟨1, ![128]⟩ : Shape).Idx → EReal)
    (Wfeat : (⟨2, ![32, 128]⟩ : Shape).Idx → EReal) (bfeat : (⟨1, ![128]⟩ : Shape).Idx → EReal)
    (Wbm : (⟨2, ![1000, 128]⟩ : Shape).Idx → EReal) (bbm : (⟨1, ![128]⟩ : Shape).Idx → EReal)
    (Wpred : (⟨2, ![64, 128]⟩ : Shape).Idx → EReal) (bpred : (⟨1, ![128]⟩ : Shape).Idx → EReal) :
    Fin 64512 → Fin 5 → Fin 128 → EReal := fun i =>
  emb (EmbW.ofArrays Wop bop Wfeat bfeat Wbm bbm bpred) (mat Wpred) (mat op i) (mat feat i) (mat bm i) (ten3 p1 i) (ten3 p2 i) (vec hc i)

def maskOfArray (a : (⟨1, ![64512]⟩ : Shape).Idx → BitVec 32) : Fin 64512 → EReal :=
  fun i => FloatOps.sitofp (F := Ideal) .f32 (a (ValueIdx.ix1 i))

end TreeNN

end
-- ==== Proof.SpecPool.lean ====
import proofs.«410031_j84061099917532_3_alg».proof.Proof.Spec
import Mathlib.Algebra.BigOperators.Group.Finset.Defs
import Mathlib.Algebra.BigOperators.Group.Finset.Basic
import Mathlib.Algebra.Order.Monoid.Unbundled.MinMax
import Mathlib.Data.Fintype.BigOperators
import Mathlib.Logic.Equiv.Fin.Basic
import Mathlib.Data.EReal.Basic

namespace TreeNN

theorem sum_fin256 (F : Fin 256 → EReal) :
    ∑ k : Fin 256, F k = ∑ a : Fin 4, ∑ d : Fin 64, F ⟨64 * a.val + d.val, by omega⟩ := by
  rw [← Fintype.sum_prod_type' (fun (a : Fin 4) (d : Fin 64) => F ⟨64 * a.val + d.val, by omega⟩)]
  refine (Fintype.sum_equiv (finProdFinEquiv (m := 4) (n := 64)) _ _ ?_).symm
  rintro ⟨a, d⟩
  refine congrArg F (Fin.ext ?_)
  simp only [finProdFinEquiv_apply_val]
  omega

theorem flat_block (P : Fin 4 → Fin 64 → EReal) (pf : Fin 256 → EReal)
    (hpf : ∀ k : Fin 256, pf k = P ⟨k.val / 64, by omega⟩ ⟨k.val % 64, by omega⟩)
    (a : Fin 4) (d : Fin 64) (hk : 64 * a.val + d.val < 256) :
    pf ⟨64 * a.val + d.val, hk⟩ = P a d :=
  (hpf _).trans (congrArg₂ P (Fin.ext (by dsimp only; omega)) (Fin.ext (by dsimp only; omega)))

theorem table_diag (W : Fin 64 → Fin 128 → EReal) (T : Fin 256 → Fin 512 → EReal)
    (hT : ∀ (k : Fin 256) (n : Fin 512), T k n =
      if k.val / 64 = n.val / 128 then W ⟨k.val % 64, by omega⟩ ⟨n.val % 128, by omega⟩ else 0)
    (q : ℕ) (d : Fin 64) (h : Fin 128) (hk : 64 * q + d.val < 256) (hn : 128 * q + h.val < 512) :
    T ⟨64 * q + d.val, hk⟩ ⟨128 * q + h.val, hn⟩ = W d h := by
  rw [hT, if_pos (by dsimp only; omega)]
  exact congrArg₂ W (Fin.ext (by dsimp only; omega)) (Fin.ext (by dsimp only; omega))

theorem table_off (W : Fin 64 → Fin 128 → EReal) (T : Fin 256 → Fin 512 → EReal)
    (hT : ∀ (k : Fin 256) (n : Fin 512), T k n =
      if k.val / 64 = n.val / 128 then W ⟨k.val % 64, by omega⟩ ⟨n.val % 128, by omega⟩ else 0)
    (a q : ℕ) (haq : a ≠ q) (d : Fin 64) (h : Fin 128) (hk : 64 * a + d.val < 256) (hn : 128 * q + h.val < 512) :
    T ⟨64 * a + d.val, hk⟩ ⟨128 * q + h.val, hn⟩ = 0 := by
  rw [hT, if_neg (by dsimp only; omega)]

theorem sum_block (P : Fin 4 → Fin 64 → EReal) (W : Fin 64 → Fin 128 → EReal)
    (pf : Fin 256 → EReal) (T : Fin 256 → Fin 512 → EReal)
    (hpf : ∀ k : Fin 256, pf k = P ⟨k.val / 64, by omega⟩ ⟨k.val % 64, by omega⟩)
    (hT : ∀ (k : Fin 256) (n : Fin 512), T k n =
      if k.val / 64 = n.val / 128 then W ⟨k.val % 64, by omega⟩ ⟨n.val % 128, by omega⟩ else 0)
    (q : ℕ) (hq : q < 4) (h : Fin 128) (hn : 128 * q + h.val < 512) :
    ∑ k : Fin 256, pf k * T k ⟨128 * q + h.val, hn⟩ = ∑ d : Fin 64, P ⟨q, hq⟩ d * W d h := by
  rw [sum_fin256, Fintype.sum_eq_single (⟨q, hq⟩ : Fin 4)]
  · refine Finset.sum_congr rfl fun d _ => ?_
    rw [flat_block P pf hpf ⟨q, hq⟩ d, table_diag W T hT q d h]
  · intro a ha
    have haq : a.val ≠ q := fun e => ha (Fin.ext e)
    refine Finset.sum_eq_zero fun d _ => ?_
    rw [table_off W T hT a.val q haq d h, mul_zero]

theorem min4_add (x0 x1 x2 x3 c : EReal) :
    min (min (min x0 x1) x2) x3 + c = min (min (min (x0 + c) (x1 + c)) (x2 + c)) (x3 + c) := by
  rw [min_add_add_right, min_add_add_right, min_add_add_right]

theorem poolK_eq_pool (P : Fin 4 → Fin 64 → EReal) (W : Fin 64 → Fin 128 → EReal) (b : Fin 128 → EReal)
    (pf : Fin 256 → EReal) (T : Fin 256 → Fin 512 → EReal)
    (hpf : ∀ k : Fin 256, pf k = P ⟨k.val / 64, by omega⟩ ⟨k.val % 64, by omega⟩)
    (hT : ∀ (k : Fin 256) (n : Fin 512), T k n = if k.val / 64 = n.val / 128 then W ⟨k.val % 64, by omega⟩ ⟨n.val % 128, by omega⟩ else 0) :
    poolK pf T b = pool P W b := by
  funext h
  unfold poolK pool dense
  rw [sum_block P W pf T hpf hT 0 (by omega) h, sum_block P W pf T hpf hT 1 (by omega) h,
    sum_block P W pf T hpf hT 2 (by omega) h, sum_block P W pf T hpf hT 3 (by omega) h]
  exact min4_add _ _ _ _ _

theorem embK_eq_emb (w : EmbW) (Wpred : Fin 64 → Fin 128 → EReal) (T : Fin 256 → Fin 512 → EReal)
    (op feat : Fin 32 → EReal) (bm : Fin 1000 → EReal) (p1 p2 : Fin 4 → Fin 64 → EReal) (pf1 pf2 : Fin 256 → EReal) (hc : EReal)
    (hT : ∀ (k : Fin 256) (n : Fin 512), T k n = if k.val / 64 = n.val / 128 then Wpred ⟨k.val % 64, by omega⟩ ⟨n.val % 128, by omega⟩ else 0)
    (h1 : ∀ k : Fin 256, pf1 k = p1 ⟨k.val / 64, by omega⟩ ⟨k.val % 64, by omega⟩)
    (h2 : ∀ k : Fin 256, pf2 k = p2 ⟨k.val / 64, by omega⟩ ⟨k.val % 64, by omega⟩) :
    embK w T op feat bm pf1 pf2 hc = emb w Wpred op feat bm p1 p2 hc := by
  unfold embK emb
  rw [poolK_eq_pool p1 Wpred w.bpred pf1 T h1 hT, poolK_eq_pool p2 Wpred w.bpred pf2 T h2 hT]

end TreeNN
-- ==== Proof.KArgs.lean ====
import proofs.«410031_j84061099917532_3_alg».proof.Proof.Gen.KernelIdeal.Frame
import proofs.«410031_j84061099917532_3_alg».proof.Proof.Spec

noncomputable section

open Idealize.ShloMosaic Idealize.ShloMosaic.TcCoe Idealize.SL.Sem
open TreeNN ValueIdx

namespace Cert.KernelIdeal.Chain

open Cert.KernelIdeal Cert.KernelIdeal.Gen

variable (m : (ℓ : Loc nD τ sig) → Buf (Elt Ideal) ℓ) (c : Dev nD)

def Em : Fin 64512 → Fin 5 → Fin 128 → EReal :=
  embOfArrays (m ((c : Thread nD τ).loc main_arg0) : S64512x32.Idx → EReal) (m ((c : Thread nD τ).loc main_arg1) : S64512x32.Idx → EReal)
    (m ((c : Thread nD τ).loc main_arg2) : S64512x1000.Idx → EReal) (m ((c : Thread nD τ).loc main_arg3) : S64512x4x64.Idx → EReal)
    (m ((c : Thread nD τ).loc main_arg4) : S64512x4x64.Idx → EReal) (m ((c : Thread nD τ).loc main_arg5) : S64512.Idx → EReal)
    (m ((c : Thread nD τ).loc main_arg8) : S32x128.Idx → EReal) (m ((c : Thread nD τ).loc main_arg9) : S128.Idx → EReal)
    (m ((c : Thread nD τ).loc main_arg10) : S32x128.Idx → EReal) (m ((c : Thread nD τ).loc main_arg11) : S128.Idx → EReal)
    (m ((c : Thread nD τ).loc main_arg12) : S1000x128.Idx → EReal) (m ((c : Thread nD τ).loc main_arg13) : S128.Idx → EReal)
    (m ((c : Thread nD τ).loc main_arg14) : S64x128.Idx → EReal) (m ((c : Thread nD τ).loc main_arg15) : S128.Idx → EReal)

def lmm : Fin 64512 → EReal := maskOfArray (m ((c : Thread nD τ).loc main_arg6) : S64512.Idx → BitVec 32)
def rmm : Fin 64512 → EReal := maskOfArray (m ((c : Thread nD τ).loc main_arg7) : S64512.Idx → BitVec 32)

def pm : MLP3 :=
  MLP3.ofArrays (m ((c : Thread nD τ).loc main_arg16) : S1408x512.Idx → EReal) (m ((c : Thread nD τ).loc main_arg17) : S512.Idx → EReal)
    (m ((c : Thread nD τ).loc main_arg18) : S512x256.Idx → EReal) (m ((c : Thread nD τ).loc main_arg19) : S256.Idx → EReal)
    (m ((c : Thread nD τ).loc main_arg20) : S256x128.Idx → EReal) (m ((c : Thread nD τ).loc main_arg21) : S128.Idx → EReal)

def costWm : HeadW :=
  HeadW.ofArrays (m ((c : Thread nD τ).loc main_arg22) : S128x128.Idx → EReal) (m ((c : Thread nD τ).loc main_arg23) : S128.Idx → EReal)
    (m ((c : Thread nD τ).loc main_arg24) : S128x128.Idx → EReal) (m ((c : Thread nD τ).loc main_arg25) : S128.Idx → EReal)
    (m ((c : Thread nD τ).loc main_arg26) : S128x1.Idx → EReal) (m ((c : Thread nD τ).loc main_arg27) : S1.Idx → EReal)
def cardWm : HeadW :=
  HeadW.ofArrays (m ((c : Thread nD τ).loc main_arg28) : S128x128.Idx → EReal) (m ((c : Thread nD τ).loc main_arg29) : S128.Idx → EReal)
    (m ((c : Thread nD τ).loc main_arg30) : S128x128.Idx → EReal) (m ((c : Thread nD τ).loc main_arg31) : S128.Idx → EReal)
    (m ((c : Thread nD τ).loc main_arg32) : S128x1.Idx → EReal) (m ((c : Thread nD τ).loc main_arg33) : S1.Idx → EReal)

def roots : Fin 1024 → Fin 128 → EReal := (level0 (Em m c) (lmm m c) (rmm m c) (pm m c)).rep

end Cert.KernelIdeal.Chain

end
-- ==== Proof.KKeep.lean ====
import proofs.«410031_j84061099917532_3_alg».proof.Proof.Gen.KernelIdeal.Frame
import Idealize.ShloMosaic.Lib.StableHlo.Run
import Idealize.ShloMosaic.Lib.Pipeline.FrameSuffix
import Idealize.ShloMosaic.Lib.Pipeline.Cells

set_option maxRecDepth 16384

noncomputable section

namespace Cert.KernelIdeal.Keep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

noncomputable def written0 : List (Ref sig .tc) :=
  [ main_v0, main_v1, main_v2, main_v3, main_v4, main_v5, main_v6, main_cst, main_v7, main_c, main_v8,
    main_c_0, main_v9, main_v10, main_v11, main_c_1, main_v12, main_c_2, main_v13, main_v14, main_v15,
    main_c_3, main_v16, main_c_4, main_v17, main_v18, main_v19, main_c_5, main_v20, main_c_6, main_v21,
    main_v22, main_v23, main_v24, main_v25, main_v26, main_v27, main_v28, main_v29, main_v30 ]

theorem writes0 : (hostOps0 : List (HloOp τ sig (Elt F))).Forall fun op =>
    op.writes ⊆ (written0.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.singleton_subset_iff, List.mem_toFinset]
    exact List.mem_map_of_mem (by decide)

theorem host0 (c : Dev nD) (b : Ref sig .tc) (hb : b ∉ written0) :
    W1 m ρ c (Proc.devRef .tc b) = W0 m ρ c (Proc.devRef .tc b) :=
  StableHlo.after_of_writes_sub hostOps0 _ writes0 hb

example (c : Dev nD) : W1 m ρ c (Proc.devRef .tc main_arg0) = W0 m ρ c (Proc.devRef .tc main_arg0) :=
  host0 m ρ c main_arg0 (by decide)

noncomputable def outs0 : List (Ref sig .tc) := [main_v31_0, main_v31_1, main_v31_2]

theorem ins0 : ∀ w : Fin cfg0.W, Pipeline.arrRef spec0 w ∉ outs0 → (cfg0.win w).isOut = false := by
  decide

theorem region0 (c : Dev nD) (b : Ref sig .tc) (hb : b ∉ outs0) :
    W2 m ρ c (Proc.devRef .tc b) = W1 m ρ c (Proc.devRef .tc b) := by
  by_cases h : ∃ w, Pipeline.arrRef spec0 w = b
  · obtain ⟨w, rfl⟩ := h
    exact (W2_arr m ρ c w).trans
      (((dat0 (V1 m ρ) c).arrAt_in w (ins0 w hb) _).trans (A_eq0 (V1 m ρ) c w))
  · exact W2_of_ne m ρ c b fun w e => h ⟨w, e⟩

example (c : Dev nD) : W2 m ρ c (Proc.devRef .tc main_arg0) = W1 m ρ c (Proc.devRef .tc main_arg0) :=
  region0 m ρ c main_arg0 (by decide)
example (c : Dev nD) : W2 m ρ c (Proc.devRef .tc main_v23) = W1 m ρ c (Proc.devRef .tc main_v23) :=
  region0 m ρ c main_v23 (by decide)

noncomputable def written1 : List (Ref sig .tc) :=
  [ main_v32, main_v33, main_v34, main_v35, main_v36, main_v37, main_v38, main_v39, main_v40, main_v41 ]

theorem writes1 : (hostOps1 : List (HloOp τ sig (Elt F))).Forall fun op =>
    op.writes ⊆ (written1.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.singleton_subset_iff, List.mem_toFinset]
    exact List.mem_map_of_mem (by decide)

theorem host1 (c : Dev nD) (b : Ref sig .tc) (hb : b ∉ written1) :
    W3 m ρ c (Proc.devRef .tc b) = W2 m ρ c (Proc.devRef .tc b) :=
  StableHlo.after_of_writes_sub hostOps1 _ writes1 hb

example (c : Dev nD) : W3 m ρ c (Proc.devRef .tc main_arg0) = W2 m ρ c (Proc.devRef .tc main_arg0) :=
  host1 m ρ c main_arg0 (by decide)
example (c : Dev nD) : W3 m ρ c (Proc.devRef .tc main_v23) = W2 m ρ c (Proc.devRef .tc main_v23) :=
  host1 m ρ c main_v23 (by decide)

noncomputable def outs1 : List (Ref sig .tc) := [main_v42_0, main_v42_1, main_v42_2]

theorem ins1 : ∀ w : Fin cfg1.W, Pipeline.arrRef spec1 w ∉ outs1 → (cfg1.win w).isOut = false := by
  decide

theorem region1 (c : Dev nD) (b : Ref sig .tc) (hb : b ∉ outs1) :
    W4 m ρ c (Proc.devRef .tc b) = W3 m ρ c (Proc.devRef .tc b) := by
  by_cases h : ∃ w, Pipeline.arrRef spec1 w = b
  · obtain ⟨w, rfl⟩ := h
    exact (W4_arr m ρ c w).trans
      (((dat1 (V3 m ρ) c).arrAt_in w (ins1 w hb) _).trans (A_eq1 (V3 m ρ) c w))
  · exact W4_of_ne m ρ c b fun w e => h ⟨w, e⟩

example (c : Dev nD) : W4 m ρ c (Proc.devRef .tc main_arg0) = W3 m ρ c (Proc.devRef .tc main_arg0) :=
  region1 m ρ c main_arg0 (by decide)
example (c : Dev nD) : W4 m ρ c (Proc.devRef .tc main_v23) = W3 m ρ c (Proc.devRef .tc main_v23) :=
  region1 m ρ c main_v23 (by decide)

noncomputable def written2 : List (Ref sig .tc) :=
  [ main_v43, main_v44, main_v45, main_v46, main_v47, main_v48, main_v49, main_v50, main_v51, main_v52 ]

theorem writes2 : (hostOps2 : List (HloOp τ sig (Elt F))).Forall fun op =>
    op.writes ⊆ (written2.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.singleton_subset_iff, List.mem_toFinset]
    exact List.mem_map_of_mem (by decide)

theorem host2 (c : Dev nD) (b : Ref sig .tc) (hb : b ∉ written2) :
    W5 m ρ c (Proc.devRef .tc b) = W4 m ρ c (Proc.devRef .tc b) :=
  StableHlo.after_of_writes_sub hostOps2 _ writes2 hb

example (c : Dev nD) : W5 m ρ c (Proc.devRef .tc main_arg0) = W4 m ρ c (Proc.devRef .tc main_arg0) :=
  host2 m ρ c main_arg0 (by decide)
example (c : Dev nD) : W5 m ρ c (Proc.devRef .tc main_v23) = W4 m ρ c (Proc.devRef .tc main_v23) :=
  host2 m ρ c main_v23 (by decide)

noncomputable def outs2 : List (Ref sig .tc) := [main_v53_0, main_v53_1, main_v53_2]

theorem ins2 : ∀ w : Fin cfg2.W, Pipeline.arrRef spec2 w ∉ outs2 → (cfg2.win w).isOut = false := by
  decide

theorem region2 (c : Dev nD) (b : Ref sig .tc) (hb : b ∉ outs2) :
    W6 m ρ c (Proc.devRef .tc b) = W5 m ρ c (Proc.devRef .tc b) := by
  by_cases h : ∃ w, Pipeline.arrRef spec2 w = b
  · obtain ⟨w, rfl⟩ := h
    exact (W6_arr m ρ c w).trans
      (((dat2 (V5 m ρ) c).arrAt_in w (ins2 w hb) _).trans (A_eq2 (V5 m ρ) c w))
  · exact W6_of_ne m ρ c b fun w e => h ⟨w, e⟩

example (c : Dev nD) : W6 m ρ c (Proc.devRef .tc main_arg0) = W5 m ρ c (Proc.devRef .tc main_arg0) :=
  region2 m ρ c main_arg0 (by decide)
example (c : Dev nD) : W6 m ρ c (Proc.devRef .tc main_v23) = W5 m ρ c (Proc.devRef .tc main_v23) :=
  region2 m ρ c main_v23 (by decide)

noncomputable def written3 : List (Ref sig .tc) :=
  [ main_v54, main_v55, main_v56, main_v57, main_v58, main_v59, main_v60, main_v61, main_v62, main_v63 ]

theorem writes3 : (hostOps3 : List (HloOp τ sig (Elt F))).Forall fun op =>
    op.writes ⊆ (written3.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.singleton_subset_iff, List.mem_toFinset]
    exact List.mem_map_of_mem (by decide)

theorem host3 (c : Dev nD) (b : Ref sig .tc) (hb : b ∉ written3) :
    W7 m ρ c (Proc.devRef .tc b) = W6 m ρ c (Proc.devRef .tc b) :=
  StableHlo.after_of_writes_sub hostOps3 _ writes3 hb

example (c : Dev nD) : W7 m ρ c (Proc.devRef .tc main_arg0) = W6 m ρ c (Proc.devRef .tc main_arg0) :=
  host3 m ρ c main_arg0 (by decide)
example (c : Dev nD) : W7 m ρ c (Proc.devRef .tc main_v23) = W6 m ρ c (Proc.devRef .tc main_v23) :=
  host3 m ρ c main_v23 (by decide)

noncomputable def outs3 : List (Ref sig .tc) := [main_v64_0, main_v64_1, main_v64_2]

theorem ins3 : ∀ w : Fin cfg3.W, Pipeline.arrRef spec3 w ∉ outs3 → (cfg3.win w).isOut = false := by
  decide

theorem region3 (c : Dev nD) (b : Ref sig .tc) (hb : b ∉ outs3) :
    W8 m ρ c (Proc.devRef .tc b) = W7 m ρ c (Proc.devRef .tc b) := by
  by_cases h : ∃ w, Pipeline.arrRef spec3 w = b
  · obtain ⟨w, rfl⟩ := h
    exact (W8_arr m ρ c w).trans
      (((dat3 (V7 m ρ) c).arrAt_in w (ins3 w hb) _).trans (A_eq3 (V7 m ρ) c w))
  · exact W8_of_ne m ρ c b fun w e => h ⟨w, e⟩

example (c : Dev nD) : W8 m ρ c (Proc.devRef .tc main_arg0) = W7 m ρ c (Proc.devRef .tc main_arg0) :=
  region3 m ρ c main_arg0 (by decide)
example (c : Dev nD) : W8 m ρ c (Proc.devRef .tc main_v23) = W7 m ρ c (Proc.devRef .tc main_v23) :=
  region3 m ρ c main_v23 (by decide)

noncomputable def written4 : List (Ref sig .tc) :=
  [ main_v65, main_v66, main_v67, main_v68, main_v69, main_v70, main_v71, main_v72, main_v73, main_v74 ]

theorem writes4 : (hostOps4 : List (HloOp τ sig (Elt F))).Forall fun op =>
    op.writes ⊆ (written4.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.singleton_subset_iff, List.mem_toFinset]
    exact List.mem_map_of_mem (by decide)

theorem host4 (c : Dev nD) (b : Ref sig .tc) (hb : b ∉ written4) :
    W9 m ρ c (Proc.devRef .tc b) = W8 m ρ c (Proc.devRef .tc b) :=
  StableHlo.after_of_writes_sub hostOps4 _ writes4 hb

example (c : Dev nD) : W9 m ρ c (Proc.devRef .tc main_arg0) = W8 m ρ c (Proc.devRef .tc main_arg0) :=
  host4 m ρ c main_arg0 (by decide)
example (c : Dev nD) : W9 m ρ c (Proc.devRef .tc main_v23) = W8 m ρ c (Proc.devRef .tc main_v23) :=
  host4 m ρ c main_v23 (by decide)

noncomputable def outs4 : List (Ref sig .tc) := [main_v75_0, main_v75_1, main_v75_2]

theorem ins4 : ∀ w : Fin cfg4.W, Pipeline.arrRef spec4 w ∉ outs4 → (cfg4.win w).isOut = false := by
  decide

theorem region4 (c : Dev nD) (b : Ref sig .tc) (hb : b ∉ outs4) :
    W10 m ρ c (Proc.devRef .tc b) = W9 m ρ c (Proc.devRef .tc b) := by
  by_cases h : ∃ w, Pipeline.arrRef spec4 w = b
  · obtain ⟨w, rfl⟩ := h
    exact (W10_arr m ρ c w).trans
      (((dat4 (V9 m ρ) c).arrAt_in w (ins4 w hb) _).trans (A_eq4 (V9 m ρ) c w))
  · exact W10_of_ne m ρ c b fun w e => h ⟨w, e⟩

example (c : Dev nD) : W10 m ρ c (Proc.devRef .tc main_arg0) = W9 m ρ c (Proc.devRef .tc main_arg0) :=
  region4 m ρ c main_arg0 (by decide)
example (c : Dev nD) : W10 m ρ c (Proc.devRef .tc main_v23) = W9 m ρ c (Proc.devRef .tc main_v23) :=
  region4 m ρ c main_v23 (by decide)

noncomputable def written5 : List (Ref sig .tc) :=
  [ main_v76, main_v77, main_v78, main_v79, main_v80, main_v81, main_v82, main_v83, main_v84, main_v85 ]

theorem writes5 : (hostOps5 : List (HloOp τ sig (Elt F))).Forall fun op =>
    op.writes ⊆ (written5.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.singleton_subset_iff, List.mem_toFinset]
    exact List.mem_map_of_mem (by decide)

theorem host5 (c : Dev nD) (b : Ref sig .tc) (hb : b ∉ written5) :
    W11 m ρ c (Proc.devRef .tc b) = W10 m ρ c (Proc.devRef .tc b) :=
  StableHlo.after_of_writes_sub hostOps5 _ writes5 hb

example (c : Dev nD) : W11 m ρ c (Proc.devRef .tc main_arg0) = W10 m ρ c (Proc.devRef .tc main_arg0) :=
  host5 m ρ c main_arg0 (by decide)
example (c : Dev nD) : W11 m ρ c (Proc.devRef .tc main_v23) = W10 m ρ c (Proc.devRef .tc main_v23) :=
  host5 m ρ c main_v23 (by decide)

noncomputable def outs5 : List (Ref sig .tc) := [main_v86_0, main_v86_1, main_v86_2]

theorem ins5 : ∀ w : Fin cfg5.W, Pipeline.arrRef spec5 w ∉ outs5 → (cfg5.win w).isOut = false := by
  decide

theorem region5 (c : Dev nD) (b : Ref sig .tc) (hb : b ∉ outs5) :
    W12 m ρ c (Proc.devRef .tc b) = W11 m ρ c (Proc.devRef .tc b) := by
  by_cases h : ∃ w, Pipeline.arrRef spec5 w = b
  · obtain ⟨w, rfl⟩ := h
    exact (W12_arr m ρ c w).trans
      (((dat5 (V11 m ρ) c).arrAt_in w (ins5 w hb) _).trans (A_eq5 (V11 m ρ) c w))
  · exact W12_of_ne m ρ c b fun w e => h ⟨w, e⟩

example (c : Dev nD) : W12 m ρ c (Proc.devRef .tc main_arg0) = W11 m ρ c (Proc.devRef .tc main_arg0) :=
  region5 m ρ c main_arg0 (by decide)
example (c : Dev nD) : W12 m ρ c (Proc.devRef .tc main_v23) = W11 m ρ c (Proc.devRef .tc main_v23) :=
  region5 m ρ c main_v23 (by decide)

noncomputable def written6 : List (Ref sig .tc) :=
  [ main_v87, main_v88, main_v89, main_v90, main_v91, main_v92 ]

theorem writes6 : (hostOps6 : List (HloOp τ sig (Elt F))).Forall fun op =>
    op.writes ⊆ (written6.map (Proc.devRef (τ := τ) .tc)).toFinset := by
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes,
      StableHlo.unaryIndexed_writes, StableHlo.nary_writes, Finset.singleton_subset_iff, List.mem_toFinset]
    exact List.mem_map_of_mem (by decide)

theorem host6 (c : Dev nD) (b : Ref sig .tc) (hb : b ∉ written6) :
    W13 m ρ c (Proc.devRef .tc b) = W12 m ρ c (Proc.devRef .tc b) :=
  StableHlo.after_of_writes_sub hostOps6 _ writes6 hb

example (c : Dev nD) : W13 m ρ c (Proc.devRef .tc main_arg0) = W12 m ρ c (Proc.devRef .tc main_arg0) :=
  host6 m ρ c main_arg0 (by decide)
example (c : Dev nD) : W13 m ρ c (Proc.devRef .tc main_v23) = W12 m ρ c (Proc.devRef .tc main_v23) :=
  host6 m ρ c main_v23 (by decide)

noncomputable def outs6 : List (Ref sig .tc) := [main_v93_0, main_v93_1]

theorem ins6 : ∀ w : Fin cfg6.W, Pipeline.arrRef spec6 w ∉ outs6 → (cfg6.win w).isOut = false := by
  decide

theorem region6 (c : Dev nD) (b : Ref sig .tc) (hb : b ∉ outs6) :
    W14 m ρ c (Proc.devRef .tc b) = W13 m ρ c (Proc.devRef .tc b) := by
  by_cases h : ∃ w, Pipeline.arrRef spec6 w = b
  · obtain ⟨w, rfl⟩ := h
    exact (W14_arr m ρ c w).trans
      (((dat6 (V13 m ρ) c).arrAt_in w (ins6 w hb) _).trans (A_eq6 (V13 m ρ) c w))
  · exact W14_of_ne m ρ c b fun w e => h ⟨w, e⟩

example (c : Dev nD) : W14 m ρ c (Proc.devRef .tc main_arg0) = W13 m ρ c (Proc.devRef .tc main_arg0) :=
  region6 m ρ c main_arg0 (by decide)
example (c : Dev nD) : W14 m ρ c (Proc.devRef .tc main_v23) = W13 m ρ c (Proc.devRef .tc main_v23) :=
  region6 m ρ c main_v23 (by decide)

end Cert.KernelIdeal.Keep
-- ==== Proof.KStable.lean ====
import proofs.«410031_j84061099917532_3_alg».proof.Proof.Gen.KernelIdeal.Frame
import proofs.«410031_j84061099917532_3_alg».proof.Proof.KKeep
import proofs.«410031_j84061099917532_3_alg».proof.Proof.Spec

noncomputable section

open Idealize.ShloMosaic Idealize.ShloMosaic.TcCoe Idealize.SL.Sem
open TreeNN ValueIdx

namespace Cert.KernelIdeal.Stable

open Cert.KernelIdeal Cert.KernelIdeal.Gen

variable (m : (ℓ : Loc nD τ sig) → Buf (Elt Ideal) ℓ) (ρ : Dev nD → PrngReg)

noncomputable def args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33]

noncomputable def fixed : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_v0, main_v1, main_v2, main_v4, main_v6, main_v23]

def key (b : Ref sig .tc) : ℕ := b.idx.val

theorem disjoint_of_keys {A B : List (Ref sig .tc)} (h : ∀ n ∈ A.map key, n ∉ B.map key) : ∀ b ∈ A, b ∉ B :=
  fun b hb hm => h (key b) (List.mem_map_of_mem hb) (List.mem_map_of_mem hm)

theorem W1_arg (c : Dev nD) (b : Ref sig .tc) (hb : b ∈ args) : W1 m ρ c (Proc.devRef .tc b) = W0 m ρ c (Proc.devRef .tc b) := by
  exact Keep.host0 m ρ c b (disjoint_of_keys (A := args) (B := Keep.written0) (by decide) b hb)

theorem W2_fixed (c : Dev nD) (b : Ref sig .tc) (hb : b ∈ fixed) : W2 m ρ c (Proc.devRef .tc b) = W1 m ρ c (Proc.devRef .tc b) := by
  exact Keep.region0 m ρ c b (disjoint_of_keys (A := fixed) (B := Keep.outs0) (by decide) b hb)

theorem W3_fixed (c : Dev nD) (b : Ref sig .tc) (hb : b ∈ fixed) : W3 m ρ c (Proc.devRef .tc b) = W1 m ρ c (Proc.devRef .tc b) := by
  exact (Keep.host1 m ρ c b (disjoint_of_keys (A := fixed) (B := Keep.written1) (by decide) b hb)).trans (W2_fixed m ρ c b hb)

theorem W4_fixed (c : Dev nD) (b : Ref sig .tc) (hb : b ∈ fixed) : W4 m ρ c (Proc.devRef .tc b) = W1 m ρ c (Proc.devRef .tc b) := by
  exact (Keep.region1 m ρ c b (disjoint_of_keys (A := fixed) (B := Keep.outs1) (by decide) b hb)).trans (W3_fixed m ρ c b hb)

theorem W5_fixed (c : Dev nD) (b : Ref sig .tc) (hb : b ∈ fixed) : W5 m ρ c (Proc.devRef .tc b) = W1 m ρ c (Proc.devRef .tc b) := by
  exact (Keep.host2 m ρ c b (disjoint_of_keys (A := fixed) (B := Keep.written2) (by decide) b hb)).trans (W4_fixed m ρ c b hb)

theorem W6_fixed (c : Dev nD) (b : Ref sig .tc) (hb : b ∈ fixed) : W6 m ρ c (Proc.devRef .tc b) = W1 m ρ c (Proc.devRef .tc b) := by
  exact (Keep.region2 m ρ c b (disjoint_of_keys (A := fixed) (B := Keep.outs2) (by decide) b hb)).trans (W5_fixed m ρ c b hb)

theorem W7_fixed (c : Dev nD) (b : Ref sig .tc) (hb : b ∈ fixed) : W7 m ρ c (Proc.devRef .tc b) = W1 m ρ c (Proc.devRef .tc b) := by
  exact (Keep.host3 m ρ c b (disjoint_of_keys (A := fixed) (B := Keep.written3) (by decide) b hb)).trans (W6_fixed m ρ c b hb)

theorem W8_fixed (c : Dev nD) (b : Ref sig .tc) (hb : b ∈ fixed) : W8 m ρ c (Proc.devRef .tc b) = W1 m ρ c (Proc.devRef .tc b) := by
  exact (Keep.region3 m ρ c b (disjoint_of_keys (A := fixed) (B := Keep.outs3) (by decide) b hb)).trans (W7_fixed m ρ c b hb)

theorem W9_fixed (c : Dev nD) (b : Ref sig .tc) (hb : b ∈ fixed) : W9 m ρ c (Proc.devRef .tc b) = W1 m ρ c (Proc.devRef .tc b) := by
  exact (Keep.host4 m ρ c b (disjoint_of_keys (A := fixed) (B := Keep.written4) (by decide) b hb)).trans (W8_fixed m ρ c b hb)

theorem W10_fixed (c : Dev nD) (b : Ref sig .tc) (hb : b ∈ fixed) : W10 m ρ c (Proc.devRef .tc b) = W1 m ρ c (Proc.devRef .tc b) := by
  exact (Keep.region4 m ρ c b (disjoint_of_keys (A := fixed) (B := Keep.outs4) (by decide) b hb)).trans (W9_fixed m ρ c b hb)

theorem W11_fixed (c : Dev nD) (b : Ref sig .tc) (hb : b ∈ fixed) : W11 m ρ c (Proc.devRef .tc b) = W1 m ρ c (Proc.devRef .tc b) := by
  exact (Keep.host5 m ρ c b (disjoint_of_keys (A := fixed) (B := Keep.written5) (by decide) b hb)).trans (W10_fixed m ρ c b hb)

theorem W12_fixed (c : Dev nD) (b : Ref sig .tc) (hb : b ∈ fixed) : W12 m ρ c (Proc.devRef .tc b) = W1 m ρ c (Proc.devRef .tc b) := by
  exact (Keep.region5 m ρ c b (disjoint_of_keys (A := fixed) (B := Keep.outs5) (by decide) b hb)).trans (W11_fixed m ρ c b hb)

theorem W13_fixed (c : Dev nD) (b : Ref sig .tc) (hb : b ∈ fixed) : W13 m ρ c (Proc.devRef .tc b) = W1 m ρ c (Proc.devRef .tc b) := by
  exact (Keep.host6 m ρ c b (disjoint_of_keys (A := fixed) (B := Keep.written6) (by decide) b hb)).trans (W12_fixed m ρ c b hb)

end Cert.KernelIdeal.Stable

end
-- ==== Proof.LibScatterSet.lean ====
import Idealize.ShloMosaic.PureOps.ShapeOps

namespace Cert.Lib

open Idealize.ShloMosaic

variable {s si u : Shape} {α : Type} {w : Nat}

private theorem foldl_set_miss {ι β γ : Type} (g : β → Option ι) (step : (ι → γ) → β → ι → γ)
    (hother : ∀ (r : ι → γ) (n : β) (k i' : ι), g n = some k → i' ≠ k → step r n i' = r i')
    (hnone : ∀ (r : ι → γ) (n : β), g n = none → step r n = r) (i : ι) :
    ∀ (l : List β) (r : ι → γ), (∀ n ∈ l, g n ≠ some i) → l.foldl step r i = r i := by
  intro l
  induction l with
  | nil => intro r _; rfl
  | cons n l ih =>
    intro r h

    rw [List.foldl_cons, ih (step r n) (fun m hm => h m (List.mem_cons_of_mem _ hm))]
    have hn : g n ≠ some i := h n (List.mem_cons.mpr (Or.inl rfl))
    cases hg : g n with
    | none => rw [hnone r n hg]
    | some k =>
      refine hother r n k i hg ?_
      intro hik
      exact hn (by rw [hg, hik])

private theorem foldl_set_hit {ι β γ : Type} (g : β → Option ι) (v : β → γ) (step : (ι → γ) → β → ι → γ)
    (hsame : ∀ (r : ι → γ) (n : β) (k : ι), g n = some k → step r n k = v n)
    (hother : ∀ (r : ι → γ) (n : β) (k i' : ι), g n = some k → i' ≠ k → step r n i' = r i')
    (hnone : ∀ (r : ι → γ) (n : β), g n = none → step r n = r) (i : ι) (n₀ : β) (h₀ : g n₀ = some i) :
    ∀ (l : List β) (r : ι → γ), l.Nodup → n₀ ∈ l → (∀ n ∈ l, g n = some i → n = n₀) →
      l.foldl step r i = v n₀ := by
  intro l
  induction l with
  | nil => intro r _ hmem; exact absurd hmem List.not_mem_nil
  | cons n l ih =>
    intro r hnd hmem huniq
    rw [List.foldl_cons]
    rw [List.nodup_cons] at hnd
    by_cases hn : n = n₀
    ·
      have htail : ∀ m ∈ l, g m ≠ some i := by
        intro m hm hgm
        have hmn : m = n := (huniq m (List.mem_cons_of_mem _ hm) hgm).trans hn.symm
        exact hnd.1 (hmn ▸ hm)
      rw [foldl_set_miss g step hother hnone i l (step r n) htail, hn]
      exact hsame r n₀ i h₀
    ·
      have hmem' : n₀ ∈ l := by
        rcases List.mem_cons.mp hmem with h | h
        · exact absurd h.symm hn
        · exact h
      exact ih (step r n) hnd.2 hmem' (fun m hm => huniq m (List.mem_cons_of_mem _ hm))

theorem scatter_set_apply_of_hit (d : ScatterDims s si u) (x : s.Idx → α) (idx : IVec si w) (upd : u.Idx → α)
    (hinj : ∀ (j j' : u.Idx) (i : s.Idx), d.resultIdx? j idx = some i → d.resultIdx? j' idx = some i → j = j')
    (j : u.Idx) (i : s.Idx) (h : d.resultIdx? j idx = some i) :
    Host.scatter d (fun _ b => b) x idx upd i = upd j := by
  unfold Host.scatter

  have hj : upd (u.rowMajor.symm (u.rowMajor j)) = upd j := by rw [Equiv.symm_apply_apply]
  rw [← hj]

  exact foldl_set_hit (fun n : Fin u.numel => d.resultIdx? (u.rowMajor.symm n) idx)
    (fun n : Fin u.numel => upd (u.rowMajor.symm n))
    (fun (r : s.Idx → α) (n : Fin u.numel) =>
      match d.resultIdx? (u.rowMajor.symm n) idx with
      | some i => fun i' => if i' = i then (fun _ b => b) (r i) (upd (u.rowMajor.symm n)) else r i'
      | none => r)
    (by intro r n k hg; simp only [hg]; exact if_pos trivial)
    (by intro r n k i' hg hne; simp only [hg]; exact if_neg hne)
    (by intro r n hg; simp only [hg])
    i (u.rowMajor j)
    (by show d.resultIdx? (u.rowMajor.symm (u.rowMajor j)) idx = some i
        rw [Equiv.symm_apply_apply]; exact h)
    (List.finRange u.numel) x (List.nodup_finRange _) (List.mem_finRange _)
    (by
      intro n _ hgn

      have hj : u.rowMajor.symm n = j := hinj _ _ i hgn h
      rw [← hj, Equiv.apply_symm_apply])

theorem scatter_set_apply_of_miss (d : ScatterDims s si u) (x : s.Idx → α) (idx : IVec si w) (upd : u.Idx → α)
    (i : s.Idx) (h : ∀ j : u.Idx, d.resultIdx? j idx ≠ some i) :
    Host.scatter d (fun _ b => b) x idx upd i = x i := by
  unfold Host.scatter
  exact foldl_set_miss (fun n : Fin u.numel => d.resultIdx? (u.rowMajor.symm n) idx)
    (fun (r : s.Idx → α) (n : Fin u.numel) =>
      match d.resultIdx? (u.rowMajor.symm n) idx with
      | some i => fun i' => if i' = i then (fun _ b => b) (r i) (upd (u.rowMajor.symm n)) else r i'
      | none => r)
    (by intro r n k i' hg hne; simp only [hg]; exact if_neg hne)
    (by intro r n hg; simp only [hg])
    i (List.finRange u.numel) x (fun n _ => h _)

end Cert.Lib
-- ==== Proof.KHost0.lean ====
import proofs.«410031_j84061099917532_3_alg».proof.Proof.Gen.KernelIdeal.Frame
import proofs.«410031_j84061099917532_3_alg».proof.Proof.LibScatterSet
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run

set_option maxRecDepth 16384

noncomputable section

namespace Cert.KernelIdeal.Host0

open Cert.KernelIdeal Cert.KernelIdeal.Gen Idealize.ShloMosaic Idealize.ShloMosaic.TcCoe Idealize.ShloMosaic.ValueIdx
open Idealize.ShloMosaic.StableHlo

section Contents

variable (V : Valuation τ sig (Elt Ideal))

theorem v0_term : (StableHlo.after (hostOps0 (F := Ideal)) V (Proc.devRef .tc main_v0) : S64512x256.Idx → EReal) =
    shapeCast S64512x256 (V (Proc.devRef .tc main_arg3) : S64512x4x64.Idx → EReal) Facts₀.shapeCasts_S64512x4x64_S64512x256 := by
  after_results; rfl

theorem v0_at (i : Fin 64512) (k : Fin 256) :
    (StableHlo.after (hostOps0 (F := Ideal)) V (Proc.devRef .tc main_v0) : S64512x256.Idx → EReal) (ix2 i k) =
      (V (Proc.devRef .tc main_arg3) : S64512x4x64.Idx → EReal)
        (ix3 i ⟨k.val / 64, by have := k.isLt; omega⟩ ⟨k.val % 64, by omega⟩) := by
  rw [v0_term]
  exact shapeCast_apply (s := S64512x4x64) (t := S64512x256) _ _ _ _ (by
    rw [Shape.rowMajor_val_two, Shape.rowMajor_val_three]
    show (i.val * 4 + k.val / 64) * 64 + k.val % 64 = i.val * 256 + k.val
    omega)

theorem v1_term : (StableHlo.after (hostOps0 (F := Ideal)) V (Proc.devRef .tc main_v1) : S64512x256.Idx → EReal) =
    shapeCast S64512x256 (V (Proc.devRef .tc main_arg4) : S64512x4x64.Idx → EReal) Facts₀.shapeCasts_S64512x4x64_S64512x256 := by
  after_results; rfl

theorem v1_at (i : Fin 64512) (k : Fin 256) :
    (StableHlo.after (hostOps0 (F := Ideal)) V (Proc.devRef .tc main_v1) : S64512x256.Idx → EReal) (ix2 i k) =
      (V (Proc.devRef .tc main_arg4) : S64512x4x64.Idx → EReal)
        (ix3 i ⟨k.val / 64, by have := k.isLt; omega⟩ ⟨k.val % 64, by omega⟩) := by
  rw [v1_term]
  exact shapeCast_apply (s := S64512x4x64) (t := S64512x256) _ _ _ _ (by
    rw [Shape.rowMajor_val_two, Shape.rowMajor_val_three]
    show (i.val * 4 + k.val / 64) * 64 + k.val % 64 = i.val * 256 + k.val
    omega)

theorem v2_term : (StableHlo.after (hostOps0 (F := Ideal)) V (Proc.devRef .tc main_v2) : S64512x1.Idx → EReal) =
    shapeCast S64512x1 (V (Proc.devRef .tc main_arg5) : S64512.Idx → EReal) Facts₀.shapeCasts_S64512_S64512x1 := by
  after_results; rfl

theorem v2_at (i : Fin 64512) :
    (StableHlo.after (hostOps0 (F := Ideal)) V (Proc.devRef .tc main_v2) : S64512x1.Idx → EReal) (ix2 i 0) =
      (V (Proc.devRef .tc main_arg5) : S64512.Idx → EReal) (ix1 i) := by
  rw [v2_term]
  exact shapeCast_apply (s := S64512) (t := S64512x1) _ _ _ _ (by
    rw [Shape.rowMajor_val_two, Shape.rowMajor_val_one]
    show i.val = i.val * 1 + 0
    omega)

theorem v4_term : (StableHlo.after (hostOps0 (F := Ideal)) V (Proc.devRef .tc main_v4) : S64512x1.Idx → EReal) =
    shapeCast S64512x1 (sitofp (F := Ideal) .f32 (V (Proc.devRef .tc main_arg6) : IVec S64512 32))
      Facts₀.shapeCasts_S64512_S64512x1 := by
  after_results; rfl

theorem v4_at (i : Fin 64512) :
    (StableHlo.after (hostOps0 (F := Ideal)) V (Proc.devRef .tc main_v4) : S64512x1.Idx → EReal) (ix2 i 0) =
      FloatOps.sitofp (F := Ideal) .f32 ((V (Proc.devRef .tc main_arg6) : S64512.Idx → BitVec 32) (ix1 i)) := by
  rw [v4_term]
  rw [shapeCast_apply (s := S64512) (t := S64512x1) _ _ _ (ix1 i) (by
    rw [Shape.rowMajor_val_two, Shape.rowMajor_val_one]
    show i.val = i.val * 1 + 0
    omega)]
  rfl

theorem v6_term : (StableHlo.after (hostOps0 (F := Ideal)) V (Proc.devRef .tc main_v6) : S64512x1.Idx → EReal) =
    shapeCast S64512x1 (sitofp (F := Ideal) .f32 (V (Proc.devRef .tc main_arg7) : IVec S64512 32))
      Facts₀.shapeCasts_S64512_S64512x1 := by
  after_results; rfl

theorem v6_at (i : Fin 64512) :
    (StableHlo.after (hostOps0 (F := Ideal)) V (Proc.devRef .tc main_v6) : S64512x1.Idx → EReal) (ix2 i 0) =
      FloatOps.sitofp (F := Ideal) .f32 ((V (Proc.devRef .tc main_arg7) : S64512.Idx → BitVec 32) (ix1 i)) := by
  rw [v6_term]
  rw [shapeCast_apply (s := S64512) (t := S64512x1) _ _ _ (ix1 i) (by
    rw [Shape.rowMajor_val_two, Shape.rowMajor_val_one]
    show i.val = i.val * 1 + 0
    omega)]
  rfl

theorem v24_term : (StableHlo.after (hostOps0 (F := Ideal)) V (Proc.devRef .tc main_v24) : S1x128.Idx → EReal) =
    shapeCast S1x128 (V (Proc.devRef .tc main_arg9) : S128.Idx → EReal) Facts₀.shapeCasts_S128_S1x128 := by
  after_results; rfl

theorem v24_at (j : Fin 128) :
    (StableHlo.after (hostOps0 (F := Ideal)) V (Proc.devRef .tc main_v24) : S1x128.Idx → EReal) (ix2 0 j) =
      (V (Proc.devRef .tc main_arg9) : S128.Idx → EReal) (ix1 j) := by
  rw [v24_term]
  exact shapeCast_a_1a_apply (a := 128) _ _ 0 j

theorem v25_term : (StableHlo.after (hostOps0 (F := Ideal)) V (Proc.devRef .tc main_v25) : S1x128.Idx → EReal) =
    shapeCast S1x128 (V (Proc.devRef .tc main_arg11) : S128.Idx → EReal) Facts₀.shapeCasts_S128_S1x128 := by
  after_results; rfl

theorem v25_at (j : Fin 128) :
    (StableHlo.after (hostOps0 (F := Ideal)) V (Proc.devRef .tc main_v25) : S1x128.Idx → EReal) (ix2 0 j) =
      (V (Proc.devRef .tc main_arg11) : S128.Idx → EReal) (ix1 j) := by
  rw [v25_term]
  exact shapeCast_a_1a_apply (a := 128) _ _ 0 j

theorem v26_term : (StableHlo.after (hostOps0 (F := Ideal)) V (Proc.devRef .tc main_v26) : S1x128.Idx → EReal) =
    shapeCast S1x128 (V (Proc.devRef .tc main_arg13) : S128.Idx → EReal) Facts₀.shapeCasts_S128_S1x128 := by
  after_results; rfl

theorem v26_at (j : Fin 128) :
    (StableHlo.after (hostOps0 (F := Ideal)) V (Proc.devRef .tc main_v26) : S1x128.Idx → EReal) (ix2 0 j) =
      (V (Proc.devRef .tc main_arg13) : S128.Idx → EReal) (ix1 j) := by
  rw [v26_term]
  exact shapeCast_a_1a_apply (a := 128) _ _ 0 j

theorem v27_term : (StableHlo.after (hostOps0 (F := Ideal)) V (Proc.devRef .tc main_v27) : S1x128.Idx → EReal) =
    shapeCast S1x128 (V (Proc.devRef .tc main_arg15) : S128.Idx → EReal) Facts₀.shapeCasts_S128_S1x128 := by
  after_results; rfl

theorem v27_at (j : Fin 128) :
    (StableHlo.after (hostOps0 (F := Ideal)) V (Proc.devRef .tc main_v27) : S1x128.Idx → EReal) (ix2 0 j) =
      (V (Proc.devRef .tc main_arg15) : S128.Idx → EReal) (ix1 j) := by
  rw [v27_term]
  exact shapeCast_a_1a_apply (a := 128) _ _ 0 j

theorem v28_term : (StableHlo.after (hostOps0 (F := Ideal)) V (Proc.devRef .tc main_v28) : S1x512.Idx → EReal) =
    shapeCast S1x512 (V (Proc.devRef .tc main_arg17) : S512.Idx → EReal) Facts₀.shapeCasts_S512_S1x512 := by
  after_results; rfl

theorem v28_at (j : Fin 512) :
    (StableHlo.after (hostOps0 (F := Ideal)) V (Proc.devRef .tc main_v28) : S1x512.Idx → EReal) (ix2 0 j) =
      (V (Proc.devRef .tc main_arg17) : S512.Idx → EReal) (ix1 j) := by
  rw [v28_term]
  exact shapeCast_a_1a_apply (a := 512) _ _ 0 j

theorem v29_term : (StableHlo.after (hostOps0 (F := Ideal)) V (Proc.devRef .tc main_v29) : S1x256.Idx → EReal) =
    shapeCast S1x256 (V (Proc.devRef .tc main_arg19) : S256.Idx → EReal) Facts₀.shapeCasts_S256_S1x256 := by
  after_results; rfl

theorem v29_at (j : Fin 256) :
    (StableHlo.after (hostOps0 (F := Ideal)) V (Proc.devRef .tc main_v29) : S1x256.Idx → EReal) (ix2 0 j) =
      (V (Proc.devRef .tc main_arg19) : S256.Idx → EReal) (ix1 j) := by
  rw [v29_term]
  exact shapeCast_a_1a_apply (a := 256) _ _ 0 j

theorem v30_term : (StableHlo.after (hostOps0 (F := Ideal)) V (Proc.devRef .tc main_v30) : S1x128.Idx → EReal) =
    shapeCast S1x128 (V (Proc.devRef .tc main_arg21) : S128.Idx → EReal) Facts₀.shapeCasts_S128_S1x128 := by
  after_results; rfl

theorem v30_at (j : Fin 128) :
    (StableHlo.after (hostOps0 (F := Ideal)) V (Proc.devRef .tc main_v30) : S1x128.Idx → EReal) (ix2 0 j) =
      (V (Proc.devRef .tc main_arg21) : S128.Idx → EReal) (ix1 j) := by
  rw [v30_term]
  exact shapeCast_a_1a_apply (a := 128) _ _ 0 j

abbrev dsc : ScatterDims S256x512 S2 S64x128 := scatter_S256x512_S2_S64x128_01_n_01_0

theorem siIdx0 (j : S64x128.Idx) : dsc.siIdx j ⟨0, by decide⟩ = ix1 (0 : Fin 2) := by
  funext b
  obtain ⟨b, hb⟩ := b
  have hb' : b < 1 := hb
  have : b = 0 := by omega
  subst this
  rfl

theorem siIdx1 (j : S64x128.Idx) : dsc.siIdx j ⟨1, by decide⟩ = ix1 (1 : Fin 2) := by
  funext b
  obtain ⟨b, hb⟩ := b
  have hb' : b < 1 := hb
  have : b = 0 := by omega
  subst this
  rfl

theorem start0 (j : S64x128.Idx) (idx : IVec S2 32) : dsc.start j idx (0 : Fin 2) = (idx (ix1 (0 : Fin 2))).toInt := by
  unfold ScatterDims.start
  rw [dif_pos (by decide)]
  rw [← siIdx0 j]
  rfl

theorem start1 (j : S64x128.Idx) (idx : IVec S2 32) : dsc.start j idx (1 : Fin 2) = (idx (ix1 (1 : Fin 2))).toInt := by
  unfold ScatterDims.start
  rw [dif_pos (by decide)]
  rw [← siIdx1 j]
  rfl

theorem window0 (j : S64x128.Idx) : dsc.window j (0 : Fin 2) = (j 0).val := by
  unfold ScatterDims.window
  rw [dif_pos (by decide)]
  rfl

theorem window1 (j : S64x128.Idx) : dsc.window j (1 : Fin 2) = (j 1).val := by
  unfold ScatterDims.window
  rw [dif_pos (by decide)]
  rfl

theorem resultIdx_eq (idx : IVec S2 32) (a b : Nat)
    (ha : (idx (ix1 (0 : Fin 2))).toInt = (a : Int)) (hb : (idx (ix1 (1 : Fin 2))).toInt = (b : Int))
    (ha' : a + 64 ≤ 256) (hb' : b + 128 ≤ 512) (r : Fin 64) (c : Fin 128) :
    dsc.resultIdx? (ix2 r c) idx =
      some (ix2 (⟨a + r.val, by have := r.isLt; omega⟩ : Fin 256) (⟨b + c.val, by have := c.isLt; omega⟩ : Fin 512)) := by
  have hr := r.isLt
  have hc := c.isLt
  have h0 : dsc.start (ix2 r c) idx (0 : Fin 2) + (dsc.window (ix2 r c) (0 : Fin 2) : Int) = ((a + r.val : Nat) : Int) := by
    rw [start0, ha, window0]; push_cast; rfl
  have h1 : dsc.start (ix2 r c) idx (1 : Fin 2) + (dsc.window (ix2 r c) (1 : Fin 2) : Int) = ((b + c.val : Nat) : Int) := by
    rw [start1, hb, window1]; push_cast; rfl
  have hall : ∀ x : Fin 2, 0 ≤ dsc.start (ix2 r c) idx x + (dsc.window (ix2 r c) x : Int) ∧
      dsc.start (ix2 r c) idx x + (dsc.window (ix2 r c) x : Int) < ((S256x512.size x : Nat) : Int) := by
    intro x
    match x with
    | ⟨0, _⟩ =>
      refine ⟨?_, ?_⟩
      · rw [show (⟨0, _⟩ : Fin 2) = 0 from rfl, h0]; omega
      · rw [show (⟨0, _⟩ : Fin 2) = 0 from rfl, h0]; show ((a + r.val : Nat) : Int) < ((256 : Nat) : Int); omega
    | ⟨1, _⟩ =>
      refine ⟨?_, ?_⟩
      · rw [show (⟨1, _⟩ : Fin 2) = 1 from rfl, h1]; omega
      · rw [show (⟨1, _⟩ : Fin 2) = 1 from rfl, h1]; show ((b + c.val : Nat) : Int) < ((512 : Nat) : Int); omega
  unfold ScatterDims.resultIdx?
  rw [dif_pos hall]
  congr 1
  funext x
  match x with
  | ⟨0, _⟩ =>
    refine Fin.ext ?_
    show (dsc.start (ix2 r c) idx (0 : Fin 2) + (dsc.window (ix2 r c) (0 : Fin 2) : Int)).toNat = a + r.val
    rw [h0]; exact Int.toNat_natCast _
  | ⟨1, _⟩ =>
    refine Fin.ext ?_
    show (dsc.start (ix2 r c) idx (1 : Fin 2) + (dsc.window (ix2 r c) (1 : Fin 2) : Int)).toNat = b + c.val
    rw [h1]; exact Int.toNat_natCast _

theorem resultIdx_inj (idx : IVec S2 32) (a b : Nat)
    (ha : (idx (ix1 (0 : Fin 2))).toInt = (a : Int)) (hb : (idx (ix1 (1 : Fin 2))).toInt = (b : Int))
    (ha' : a + 64 ≤ 256) (hb' : b + 128 ≤ 512) (j j' : S64x128.Idx) (i : S256x512.Idx)
    (hj : dsc.resultIdx? j idx = some i) (hj' : dsc.resultIdx? j' idx = some i) : j = j' := by
  obtain ⟨r, c, rfl⟩ : ∃ (r : Fin 64) (c : Fin 128), j = ix2 r c := ⟨j 0, j 1, eq_ix2 (n0 := 64) (n1 := 128) j⟩
  obtain ⟨r', c', rfl⟩ : ∃ (r : Fin 64) (c : Fin 128), j' = ix2 r c := ⟨j' 0, j' 1, eq_ix2 (n0 := 64) (n1 := 128) j'⟩
  rw [resultIdx_eq idx a b ha hb ha' hb'] at hj hj'
  have e := (Option.some.inj hj).trans (Option.some.inj hj').symm
  have e0 : (⟨a + r.val, _⟩ : Fin 256) = ⟨a + r'.val, _⟩ := congrFun e (0 : Fin 2)
  have e1 : (⟨b + c.val, _⟩ : Fin 512) = ⟨b + c'.val, _⟩ := congrFun e (1 : Fin 2)
  have f0 : r = r' := Fin.ext (by have := Fin.mk.inj e0; omega)
  have f1 : c = c' := Fin.ext (by have := Fin.mk.inj e1; omega)
  rw [f0, f1]

theorem scat_hit (x : S256x512.Idx → EReal) (idx : IVec S2 32) (upd : S64x128.Idx → EReal) (a b : Nat)
    (ha : (idx (ix1 (0 : Fin 2))).toInt = (a : Int)) (hb : (idx (ix1 (1 : Fin 2))).toInt = (b : Int))
    (ha' : a + 64 ≤ 256) (hb' : b + 128 ≤ 512) (k : Fin 256) (n : Fin 512) (r : Fin 64) (c : Fin 128)
    (hk : k.val = a + r.val) (hn : n.val = b + c.val) :
    Host.scatter dsc (fun _ b => b) x idx upd (ix2 k n) = upd (ix2 r c) := by
  refine Cert.Lib.scatter_set_apply_of_hit dsc x idx upd (resultIdx_inj idx a b ha hb ha' hb') (ix2 r c) (ix2 k n) ?_
  rw [resultIdx_eq idx a b ha hb ha' hb']
  have hk' : (⟨a + r.val, by have := r.isLt; omega⟩ : Fin 256) = k := Fin.ext hk.symm
  have hn' : (⟨b + c.val, by have := c.isLt; omega⟩ : Fin 512) = n := Fin.ext hn.symm
  rw [hk', hn']

theorem scat_miss (x : S256x512.Idx → EReal) (idx : IVec S2 32) (upd : S64x128.Idx → EReal) (a b : Nat)
    (ha : (idx (ix1 (0 : Fin 2))).toInt = (a : Int)) (hb : (idx (ix1 (1 : Fin 2))).toInt = (b : Int))
    (ha' : a + 64 ≤ 256) (hb' : b + 128 ≤ 512) (k : Fin 256) (n : Fin 512)
    (h : ¬ (a ≤ k.val ∧ k.val < a + 64 ∧ b ≤ n.val ∧ n.val < b + 128)) :
    Host.scatter dsc (fun _ b => b) x idx upd (ix2 k n) = x (ix2 k n) := by
  refine Cert.Lib.scatter_set_apply_of_miss dsc x idx upd (ix2 k n) ?_
  intro j hj
  obtain ⟨r, c, rfl⟩ : ∃ (r : Fin 64) (c : Fin 128), j = ix2 r c := ⟨j 0, j 1, eq_ix2 (n0 := 64) (n1 := 128) j⟩
  rw [resultIdx_eq idx a b ha hb ha' hb'] at hj
  have e := Option.some.inj hj
  have e0 : (⟨a + r.val, _⟩ : Fin 256) = k := congrFun e (0 : Fin 2)
  have e1 : (⟨b + c.val, _⟩ : Fin 512) = n := congrFun e (1 : Fin 2)
  have g0 : a + r.val = k.val := congrArg Fin.val e0
  have g1 : b + c.val = n.val := congrArg Fin.val e1
  have l0 : r.val < 64 := r.isLt
  have l1 : c.val < 128 := c.isLt
  exact h ⟨by omega, by omega, by omega, by omega⟩

abbrev startIdx (a b : BitVec 32) : IVec S2 32 :=
  concatenate S2 0 [⟨S1, broadcastInDim S1 ![] Facts₀.bcast_S_S1 (constantI S_ 32 a)⟩,
    ⟨S1, broadcastInDim S1 ![] Facts₀.bcast_S_S1 (constantI S_ 32 b)⟩] Facts₀.concatenates_S1_S1_S2_d0

theorem startIdx0 (a b : BitVec 32) : startIdx a b (ix1 (0 : Fin 2)) = a := by
  unfold startIdx
  rw [concatenate_pair_apply_left (t := S2) (s₁ := S1) (s₂ := S1) 0 _ _ _ (ix1 (0 : Fin 2)) rfl (ix1 (0 : Fin 1))
    (by intro b; match b with | ⟨0, _⟩ => rfl)]
  rw [broadcastInDim_scalar_apply]
  rfl

theorem startIdx1 (a b : BitVec 32) : startIdx a b (ix1 (1 : Fin 2)) = b := by
  unfold startIdx
  rw [concatenate_pair_apply_right (t := S2) (s₁ := S1) (s₂ := S1) 0 _ _ _ (ix1 (1 : Fin 2)) rfl rfl (ix1 (0 : Fin 1))
    (by intro b hb; match b, hb with | ⟨0, _⟩, hb => exact absurd rfl hb) rfl]
  rw [broadcastInDim_scalar_apply]
  rfl

theorem v23_term : (StableHlo.after (hostOps0 (F := Ideal)) V (Proc.devRef .tc main_v23) : S256x512.Idx → EReal) =
    Host.scatter dsc (fun _ b => b)
      (Host.scatter dsc (fun _ b => b)
        (Host.scatter dsc (fun _ b => b)
          (Host.scatter dsc (fun _ b => b)
            (broadcastInDim S256x512 ![] Facts₀.bcast_S_S256x512 (constant (F := Ideal) S_ .f32 0x00000000#32))
            (startIdx 0#32 0#32) (V (Proc.devRef .tc main_arg14) : S64x128.Idx → EReal))
          (startIdx 64#32 128#32) (V (Proc.devRef .tc main_arg14) : S64x128.Idx → EReal))
        (startIdx 128#32 256#32) (V (Proc.devRef .tc main_arg14) : S64x128.Idx → EReal))
      (startIdx 192#32 384#32) (V (Proc.devRef .tc main_arg14) : S64x128.Idx → EReal) := by

  after_results_simp
  rfl

theorem v23_at (k : Fin 256) (n : Fin 512) :
    (StableHlo.after (hostOps0 (F := Ideal)) V (Proc.devRef .tc main_v23) : S256x512.Idx → EReal) (ix2 k n) =
      if k.val / 64 = n.val / 128 then
        (V (Proc.devRef .tc main_arg14) : S64x128.Idx → EReal)
          (ix2 ⟨k.val % 64, by omega⟩ ⟨n.val % 128, by omega⟩)
      else (0 : EReal) := by
  rw [v23_term]
  have hk := k.isLt
  have hn := n.isLt
  have a0 : (startIdx 0#32 0#32 (ix1 (0 : Fin 2))).toInt = ((0 : Nat) : Int) := by rw [startIdx0]; decide
  have b0 : (startIdx 0#32 0#32 (ix1 (1 : Fin 2))).toInt = ((0 : Nat) : Int) := by rw [startIdx1]; decide
  have a1 : (startIdx 64#32 128#32 (ix1 (0 : Fin 2))).toInt = ((64 : Nat) : Int) := by rw [startIdx0]; decide
  have b1 : (startIdx 64#32 128#32 (ix1 (1 : Fin 2))).toInt = ((128 : Nat) : Int) := by rw [startIdx1]; decide
  have a2 : (startIdx 128#32 256#32 (ix1 (0 : Fin 2))).toInt = ((128 : Nat) : Int) := by rw [startIdx0]; decide
  have b2 : (startIdx 128#32 256#32 (ix1 (1 : Fin 2))).toInt = ((256 : Nat) : Int) := by rw [startIdx1]; decide
  have a3 : (startIdx 192#32 384#32 (ix1 (0 : Fin 2))).toInt = ((192 : Nat) : Int) := by rw [startIdx0]; decide
  have b3 : (startIdx 192#32 384#32 (ix1 (1 : Fin 2))).toInt = ((384 : Nat) : Int) := by rw [startIdx1]; decide
  by_cases h3 : 192 ≤ k.val ∧ k.val < 192 + 64 ∧ 384 ≤ n.val ∧ n.val < 384 + 128
  ·
    rw [scat_hit _ _ _ 192 384 a3 b3 (by omega) (by omega) k n ⟨k.val % 64, by omega⟩ ⟨n.val % 128, by omega⟩
      (by show k.val = 192 + k.val % 64; omega) (by show n.val = 384 + n.val % 128; omega)]
    rw [if_pos (by omega)]
  · rw [scat_miss _ _ _ 192 384 a3 b3 (by omega) (by omega) k n h3]
    by_cases h2 : 128 ≤ k.val ∧ k.val < 128 + 64 ∧ 256 ≤ n.val ∧ n.val < 256 + 128
    · rw [scat_hit _ _ _ 128 256 a2 b2 (by omega) (by omega) k n ⟨k.val % 64, by omega⟩ ⟨n.val % 128, by omega⟩
        (by show k.val = 128 + k.val % 64; omega) (by show n.val = 256 + n.val % 128; omega)]
      rw [if_pos (by omega)]
    · rw [scat_miss _ _ _ 128 256 a2 b2 (by omega) (by omega) k n h2]
      by_cases h1 : 64 ≤ k.val ∧ k.val < 64 + 64 ∧ 128 ≤ n.val ∧ n.val < 128 + 128
      · rw [scat_hit _ _ _ 64 128 a1 b1 (by omega) (by omega) k n ⟨k.val % 64, by omega⟩ ⟨n.val % 128, by omega⟩
          (by show k.val = 64 + k.val % 64; omega) (by show n.val = 128 + n.val % 128; omega)]
        rw [if_pos (by omega)]
      · rw [scat_miss _ _ _ 64 128 a1 b1 (by omega) (by omega) k n h1]
        by_cases h0 : 0 ≤ k.val ∧ k.val < 0 + 64 ∧ 0 ≤ n.val ∧ n.val < 0 + 128
        · rw [scat_hit _ _ _ 0 0 a0 b0 (by omega) (by omega) k n ⟨k.val % 64, by omega⟩ ⟨n.val % 128, by omega⟩
            (by show k.val = 0 + k.val % 64; omega) (by show n.val = 0 + n.val % 128; omega)]
          rw [if_pos (by omega)]
        ·
          rw [scat_miss _ _ _ 0 0 a0 b0 (by omega) (by omega) k n h0]
          rw [broadcastInDim_scalar_apply, constant_apply, Ideal.ofBits_zero_f32]
          rw [if_neg (by omega)]

end Contents

variable (m : (ℓ : Loc nD τ sig) → Buf (Elt Ideal) ℓ) (ρ : Dev nD → PrngReg) (c : Dev nD)

theorem v0_apply (i : Fin 64512) (k : Fin 256) :
    (W1 m ρ c (Proc.devRef .tc main_v0) : S64512x256.Idx → EReal) (ix2 i k) =
      (m ((c : Thread nD τ).loc main_arg3) : S64512x4x64.Idx → EReal)
        (ix3 i ⟨k.val / 64, by have := k.isLt; omega⟩ ⟨k.val % 64, by omega⟩) :=
  v0_at (W0 m ρ c) i k

theorem v1_apply (i : Fin 64512) (k : Fin 256) :
    (W1 m ρ c (Proc.devRef .tc main_v1) : S64512x256.Idx → EReal) (ix2 i k) =
      (m ((c : Thread nD τ).loc main_arg4) : S64512x4x64.Idx → EReal)
        (ix3 i ⟨k.val / 64, by have := k.isLt; omega⟩ ⟨k.val % 64, by omega⟩) :=
  v1_at (W0 m ρ c) i k

theorem v2_apply (i : Fin 64512) :
    (W1 m ρ c (Proc.devRef .tc main_v2) : S64512x1.Idx → EReal) (ix2 i 0) =
      (m ((c : Thread nD τ).loc main_arg5) : S64512.Idx → EReal) (ix1 i) :=
  v2_at (W0 m ρ c) i

theorem v4_apply (i : Fin 64512) :
    (W1 m ρ c (Proc.devRef .tc main_v4) : S64512x1.Idx → EReal) (ix2 i 0) =
      FloatOps.sitofp (F := Ideal) .f32 ((m ((c : Thread nD τ).loc main_arg6) : S64512.Idx → BitVec 32) (ix1 i)) :=
  v4_at (W0 m ρ c) i

theorem v6_apply (i : Fin 64512) :
    (W1 m ρ c (Proc.devRef .tc main_v6) : S64512x1.Idx → EReal) (ix2 i 0) =
      FloatOps.sitofp (F := Ideal) .f32 ((m ((c : Thread nD τ).loc main_arg7) : S64512.Idx → BitVec 32) (ix1 i)) :=
  v6_at (W0 m ρ c) i

theorem v23_apply (k : Fin 256) (n : Fin 512) :
    (W1 m ρ c (Proc.devRef .tc main_v23) : S256x512.Idx → EReal) (ix2 k n) =
      if k.val / 64 = n.val / 128 then
        (m ((c : Thread nD τ).loc main_arg14) : S64x128.Idx → EReal)
          (ix2 ⟨k.val % 64, by omega⟩ ⟨n.val % 128, by omega⟩)
      else (0 : EReal) :=
  v23_at (W0 m ρ c) k n

theorem v24_apply (j : Fin 128) :
    (W1 m ρ c (Proc.devRef .tc main_v24) : S1x128.Idx → EReal) (ix2 0 j) =
      (m ((c : Thread nD τ).loc main_arg9) : S128.Idx → EReal) (ix1 j) :=
  v24_at (W0 m ρ c) j

theorem v25_apply (j : Fin 128) :
    (W1 m ρ c (Proc.devRef .tc main_v25) : S1x128.Idx → EReal) (ix2 0 j) =
      (m ((c : Thread nD τ).loc main_arg11) : S128.Idx → EReal) (ix1 j) :=
  v25_at (W0 m ρ c) j

theorem v26_apply (j : Fin 128) :
    (W1 m ρ c (Proc.devRef .tc main_v26) : S1x128.Idx → EReal) (ix2 0 j) =
      (m ((c : Thread nD τ).loc main_arg13) : S128.Idx → EReal) (ix1 j) :=
  v26_at (W0 m ρ c) j

theorem v27_apply (j : Fin 128) :
    (W1 m ρ c (Proc.devRef .tc main_v27) : S1x128.Idx → EReal) (ix2 0 j) =
      (m ((c : Thread nD τ).loc main_arg15) : S128.Idx → EReal) (ix1 j) :=
  v27_at (W0 m ρ c) j

theorem v28_apply (j : Fin 512) :
    (W1 m ρ c (Proc.devRef .tc main_v28) : S1x512.Idx → EReal) (ix2 0 j) =
      (m ((c : Thread nD τ).loc main_arg17) : S512.Idx → EReal) (ix1 j) :=
  v28_at (W0 m ρ c) j

theorem v29_apply (j : Fin 256) :
    (W1 m ρ c (Proc.devRef .tc main_v29) : S1x256.Idx → EReal) (ix2 0 j) =
      (m ((c : Thread nD τ).loc main_arg19) : S256.Idx → EReal) (ix1 j) :=
  v29_at (W0 m ρ c) j

theorem v30_apply (j : Fin 128) :
    (W1 m ρ c (Proc.devRef .tc main_v30) : S1x128.Idx → EReal) (ix2 0 j) =
      (m ((c : Thread nD τ).loc main_arg21) : S128.Idx → EReal) (ix1 j) :=
  v30_at (W0 m ρ c) j

end Cert.KernelIdeal.Host0
-- ==== Proof.R0Pay.lean ====
import proofs.«410031_j84061099917532_3_alg».proof.Proof.Gen.KernelIdeal.Skeleton
import proofs.«410031_j84061099917532_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open Idealize.ShloMosaic Idealize.ShloMosaic.TcCoe Idealize.SL.Sem
open TreeNN ValueIdx

namespace Cert.KernelIdeal.Region0

open Cert.KernelIdeal Cert.KernelIdeal.Gen

theorem lhs32_0 (j : S1024x128.Idx) (k : dot_S1024x32_S32x128_S1024x128_1_0_0_1_n_n.contr.Idx) :
    (dot_S1024x32_S32x128_S1024x128_1_0_0_1_n_n.lhsIdx j k 0 : ℕ) = j 0 := by
  simp [DotDims.lhsIdx, dot_S1024x32_S32x128_S1024x128_1_0_0_1_n_n]; rfl
theorem lhs32_1 (j : S1024x128.Idx) (k : dot_S1024x32_S32x128_S1024x128_1_0_0_1_n_n.contr.Idx) :
    (dot_S1024x32_S32x128_S1024x128_1_0_0_1_n_n.lhsIdx j k 1 : ℕ) = k ⟨0, by decide⟩ := by
  simp [DotDims.lhsIdx, dot_S1024x32_S32x128_S1024x128_1_0_0_1_n_n]; rfl
theorem rhs32_0 (j : S1024x128.Idx) (k : dot_S1024x32_S32x128_S1024x128_1_0_0_1_n_n.contr.Idx) :
    (dot_S1024x32_S32x128_S1024x128_1_0_0_1_n_n.rhsIdx j k 0 : ℕ) = k ⟨0, by decide⟩ := by
  simp [DotDims.rhsIdx, dot_S1024x32_S32x128_S1024x128_1_0_0_1_n_n]; rfl
theorem rhs32_1 (j : S1024x128.Idx) (k : dot_S1024x32_S32x128_S1024x128_1_0_0_1_n_n.contr.Idx) :
    (dot_S1024x32_S32x128_S1024x128_1_0_0_1_n_n.rhsIdx j k 1 : ℕ) = j 1 := by
  simp [DotDims.rhsIdx, dot_S1024x32_S32x128_S1024x128_1_0_0_1_n_n]; rfl

theorem mm32_apply (x : FVec Ideal S1024x32 .bf16) (W : FVec Ideal S32x128 .bf16) (r : Fin 1024) (j : Fin 128) :
    matmul dot_S1024x32_S32x128_S1024x128_1_0_0_1_n_n none x W (constant (F := Ideal) S1024x128 .f32 0x00000000#32) (ix2 r j)
      = ∑ k : Fin 32, x (ix2 r k) * W (ix2 k j) := by
  refine (Ideal.matmul_constant_zero_apply _ none x W (ix2 r j)).trans ?_
  rw [← Equiv.sum_comp (contrEquiv1 dot_S1024x32_S32x128_S1024x128_1_0_0_1_n_n 32 rfl rfl).symm]
  refine Finset.sum_congr rfl fun k _ => ?_
  have hk := contrEquiv1_symm_val dot_S1024x32_S32x128_S1024x128_1_0_0_1_n_n 32 rfl rfl k
  congr 2
  · funext a
    match a with
    | ⟨0, _⟩ => exact Fin.ext (lhs32_0 _ _)
    | ⟨1, _⟩ => exact Fin.ext ((lhs32_1 _ _).trans hk)
  · funext a
    match a with
    | ⟨0, _⟩ => exact Fin.ext ((rhs32_0 _ _).trans hk)
    | ⟨1, _⟩ => exact Fin.ext (rhs32_1 _ _)

theorem lhs1000_0 (j : S1024x128.Idx) (k : dot_S1024x1000_S1000x128_S1024x128_1_0_0_1_n_n.contr.Idx) :
    (dot_S1024x1000_S1000x128_S1024x128_1_0_0_1_n_n.lhsIdx j k 0 : ℕ) = j 0 := by
  simp [DotDims.lhsIdx, dot_S1024x1000_S1000x128_S1024x128_1_0_0_1_n_n]; rfl
theorem lhs1000_1 (j : S1024x128.Idx) (k : dot_S1024x1000_S1000x128_S1024x128_1_0_0_1_n_n.contr.Idx) :
    (dot_S1024x1000_S1000x128_S1024x128_1_0_0_1_n_n.lhsIdx j k 1 : ℕ) = k ⟨0, by decide⟩ := by
  simp [DotDims.lhsIdx, dot_S1024x1000_S1000x128_S1024x128_1_0_0_1_n_n]; rfl
theorem rhs1000_0 (j : S1024x128.Idx) (k : dot_S1024x1000_S1000x128_S1024x128_1_0_0_1_n_n.contr.Idx) :
    (dot_S1024x1000_S1000x128_S1024x128_1_0_0_1_n_n.rhsIdx j k 0 : ℕ) = k ⟨0, by decide⟩ := by
  simp [DotDims.rhsIdx, dot_S1024x1000_S1000x128_S1024x128_1_0_0_1_n_n]; rfl
theorem rhs1000_1 (j : S1024x128.Idx) (k : dot_S1024x1000_S1000x128_S1024x128_1_0_0_1_n_n.contr.Idx) :
    (dot_S1024x1000_S1000x128_S1024x128_1_0_0_1_n_n.rhsIdx j k 1 : ℕ) = j 1 := by
  simp [DotDims.rhsIdx, dot_S1024x1000_S1000x128_S1024x128_1_0_0_1_n_n]; rfl

theorem mm1000_apply (x : FVec Ideal S1024x1000 .bf16) (W : FVec Ideal S1000x128 .bf16) (r : Fin 1024) (j : Fin 128) :
    matmul dot_S1024x1000_S1000x128_S1024x128_1_0_0_1_n_n none x W (constant (F := Ideal) S1024x128 .f32 0x00000000#32) (ix2 r j)
      = ∑ k : Fin 1000, x (ix2 r k) * W (ix2 k j) := by
  refine (Ideal.matmul_constant_zero_apply _ none x W (ix2 r j)).trans ?_
  rw [← Equiv.sum_comp (contrEquiv1 dot_S1024x1000_S1000x128_S1024x128_1_0_0_1_n_n 1000 rfl rfl).symm]
  refine Finset.sum_congr rfl fun k _ => ?_
  have hk := contrEquiv1_symm_val dot_S1024x1000_S1000x128_S1024x128_1_0_0_1_n_n 1000 rfl rfl k
  congr 2
  · funext a
    match a with
    | ⟨0, _⟩ => exact Fin.ext (lhs1000_0 _ _)
    | ⟨1, _⟩ => exact Fin.ext ((lhs1000_1 _ _).trans hk)
  · funext a
    match a with
    | ⟨0, _⟩ => exact Fin.ext ((rhs1000_0 _ _).trans hk)
    | ⟨1, _⟩ => exact Fin.ext (rhs1000_1 _ _)

theorem lhs256_0 (j : S1024x512.Idx) (k : dot_S1024x256_S256x512_S1024x512_1_0_0_1_n_n.contr.Idx) :
    (dot_S1024x256_S256x512_S1024x512_1_0_0_1_n_n.lhsIdx j k 0 : ℕ) = j 0 := by
  simp [DotDims.lhsIdx, dot_S1024x256_S256x512_S1024x512_1_0_0_1_n_n]; rfl
theorem lhs256_1 (j : S1024x512.Idx) (k : dot_S1024x256_S256x512_S1024x512_1_0_0_1_n_n.contr.Idx) :
    (dot_S1024x256_S256x512_S1024x512_1_0_0_1_n_n.lhsIdx j k 1 : ℕ) = k ⟨0, by decide⟩ := by
  simp [DotDims.lhsIdx, dot_S1024x256_S256x512_S1024x512_1_0_0_1_n_n]; rfl
theorem rhs256_0 (j : S1024x512.Idx) (k : dot_S1024x256_S256x512_S1024x512_1_0_0_1_n_n.contr.Idx) :
    (dot_S1024x256_S256x512_S1024x512_1_0_0_1_n_n.rhsIdx j k 0 : ℕ) = k ⟨0, by decide⟩ := by
  simp [DotDims.rhsIdx, dot_S1024x256_S256x512_S1024x512_1_0_0_1_n_n]; rfl
theorem rhs256_1 (j : S1024x512.Idx) (k : dot_S1024x256_S256x512_S1024x512_1_0_0_1_n_n.contr.Idx) :
    (dot_S1024x256_S256x512_S1024x512_1_0_0_1_n_n.rhsIdx j k 1 : ℕ) = j 1 := by
  simp [DotDims.rhsIdx, dot_S1024x256_S256x512_S1024x512_1_0_0_1_n_n]; rfl

theorem mm256_apply (x : FVec Ideal S1024x256 .bf16) (W : FVec Ideal S256x512 .bf16) (r : Fin 1024) (j : Fin 512) :
    matmul dot_S1024x256_S256x512_S1024x512_1_0_0_1_n_n none x W (constant (F := Ideal) S1024x512 .f32 0x00000000#32) (ix2 r j)
      = ∑ k : Fin 256, x (ix2 r k) * W (ix2 k j) := by
  refine (Ideal.matmul_constant_zero_apply _ none x W (ix2 r j)).trans ?_
  rw [← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  congr 2
  · funext a
    match a with
    | ⟨0, _⟩ => exact Fin.ext (lhs256_0 _ _)
    | ⟨1, _⟩ => exact Fin.ext ((lhs256_1 _ _).trans hk)
  · funext a
    match a with
    | ⟨0, _⟩ => exact Fin.ext ((rhs256_0 _ _).trans hk)
    | ⟨1, _⟩ => exact Fin.ext (rhs256_1 _ _)

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs512_0 (j : S1024x256.Idx) (k : dot_S1024x512_S512x256_S1024x256_1_0_0_1_n_n.contr.Idx) :
    (dot_S1024x512_S512x256_S1024x256_1_0_0_1_n_n.lhsIdx j k 0 : ℕ) = j 0 := by
  simp [DotDims.lhsIdx, dot_S1024x512_S512x256_S1024x256_1_0_0_1_n_n]; rfl
theorem lhs512_1 (j : S1024x256.Idx) (k : dot_S1024x512_S512x256_S1024x256_1_0_0_1_n_n.contr.Idx) :
    (dot_S1024x512_S512x256_S1024x256_1_0_0_1_n_n.lhsIdx j k 1 : ℕ) = k ⟨0, by decide⟩ := by
  simp [DotDims.lhsIdx, dot_S1024x512_S512x256_S1024x256_1_0_0_1_n_n]; rfl
theorem rhs512_0 (j : S1024x256.Idx) (k : dot_S1024x512_S512x256_S1024x256_1_0_0_1_n_n.contr.Idx) :
    (dot_S1024x512_S512x256_S1024x256_1_0_0_1_n_n.rhsIdx j k 0 : ℕ) = k ⟨0, by decide⟩ := by
  simp [DotDims.rhsIdx, dot_S1024x512_S512x256_S1024x256_1_0_0_1_n_n]; rfl
theorem rhs512_1 (j : S1024x256.Idx) (k : dot_S1024x512_S512x256_S1024x256_1_0_0_1_n_n.contr.Idx) :
    (dot_S1024x512_S512x256_S1024x256_1_0_0_1_n_n.rhsIdx j k 1 : ℕ) = j 1 := by
  simp [DotDims.rhsIdx, dot_S1024x512_S512x256_S1024x256_1_0_0_1_n_n]; rfl

theorem mm512_apply (x : FVec Ideal S1024x512 .bf16) (W : FVec Ideal S512x256 .bf16) (r : Fin 1024) (j : Fin 256) :
    matmul dot_S1024x512_S512x256_S1024x256_1_0_0_1_n_n none x W (constant (F := Ideal) S1024x256 .f32 0x00000000#32) (ix2 r j)
      = ∑ k : Fin 512, x (ix2 r k) * W (ix2 k j) := by
  refine (Ideal.matmul_constant_zero_apply _ none x W (ix2 r j)).trans ?_
  rw [← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  congr 2
  · funext a
    match a with
    | ⟨0, _⟩ => exact Fin.ext (lhs512_0 _ _)
    | ⟨1, _⟩ => exact Fin.ext ((lhs512_1 _ _).trans hk)
  · funext a
    match a with
    | ⟨0, _⟩ => exact Fin.ext ((rhs512_0 _ _).trans hk)
    | ⟨1, _⟩ => exact Fin.ext (rhs512_1 _ _)

theorem lhs256s_0 (j : S1024x128.Idx) (k : dot_S1024x256_S256x128_S1024x128_1_0_0_1_n_n.contr.Idx) :
    (dot_S1024x256_S256x128_S1024x128_1_0_0_1_n_n.lhsIdx j k 0 : ℕ) = j 0 := by
  simp [DotDims.lhsIdx, dot_S1024x256_S256x128_S1024x128_1_0_0_1_n_n]; rfl
theorem lhs256s_1 (j : S1024x128.Idx) (k : dot_S1024x256_S256x128_S1024x128_1_0_0_1_n_n.contr.Idx) :
    (dot_S1024x256_S256x128_S1024x128_1_0_0_1_n_n.lhsIdx j k 1 : ℕ) = k ⟨0, by decide⟩ := by
  simp [DotDims.lhsIdx, dot_S1024x256_S256x128_S1024x128_1_0_0_1_n_n]; rfl
theorem rhs256s_0 (j : S1024x128.Idx) (k : dot_S1024x256_S256x128_S1024x128_1_0_0_1_n_n.contr.Idx) :
    (dot_S1024x256_S256x128_S1024x128_1_0_0_1_n_n.rhsIdx j k 0 : ℕ) = k ⟨0, by decide⟩ := by
  simp [DotDims.rhsIdx, dot_S1024x256_S256x128_S1024x128_1_0_0_1_n_n]; rfl
theorem rhs256s_1 (j : S1024x128.Idx) (k : dot_S1024x256_S256x128_S1024x128_1_0_0_1_n_n.contr.Idx) :
    (dot_S1024x256_S256x128_S1024x128_1_0_0_1_n_n.rhsIdx j k 1 : ℕ) = j 1 := by
  simp [DotDims.rhsIdx, dot_S1024x256_S256x128_S1024x128_1_0_0_1_n_n]; rfl

theorem mm256s_apply (x : FVec Ideal S1024x256 .bf16) (W : FVec Ideal S256x128 .bf16) (r : Fin 1024) (j : Fin 128) :
    matmul dot_S1024x256_S256x128_S1024x128_1_0_0_1_n_n none x W (constant (F := Ideal) S1024x128 .f32 0x00000000#32) (ix2 r j)
      = ∑ k : Fin 256, x (ix2 r k) * W (ix2 k j) := by
  refine (Ideal.matmul_constant_zero_apply _ none x W (ix2 r j)).trans ?_
  rw [← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  congr 2
  · funext a
    match a with
    | ⟨0, _⟩ => exact Fin.ext (lhs256s_0 _ _)
    | ⟨1, _⟩ => exact Fin.ext ((lhs256s_1 _ _).trans hk)
  · funext a
    match a with
    | ⟨0, _⟩ => exact Fin.ext ((rhs256s_0 _ _).trans hk)
    | ⟨1, _⟩ => exact Fin.ext (rhs256s_1 _ _)

theorem relu512_row (y : FVec Ideal S1024x512 .f32) (r : Fin 1024) :
    mat (truncf .bf16 (maximumf y (broadcast S1024x512 (Scalar.ofBits (F := Ideal) .f32 0x00000000#32))) bitsLt_bf16_f32) r
      = relu (mat y r) := by
  funext k
  show max (y (ix2 r k)) (Ideal.ofBits .f32 0x00000000#32) = max (y (ix2 r k)) 0
  rw [Ideal.ofBits_zero_f32]

theorem relu256_row (y : FVec Ideal S1024x256 .f32) (r : Fin 1024) :
    mat (truncf .bf16 (maximumf y (broadcast S1024x256 (Scalar.ofBits (F := Ideal) .f32 0x00000000#32))) bitsLt_bf16_f32) r
      = relu (mat y r) := by
  funext k
  show max (y (ix2 r k)) (Ideal.ofBits .f32 0x00000000#32) = max (y (ix2 r k)) 0
  rw [Ideal.ofBits_zero_f32]

theorem relu128_apply (y : FVec Ideal S1024x128 .f32) (r : Fin 1024) (j : Fin 128) :
    maximumf y (broadcast S1024x128 (Scalar.ofBits (F := Ideal) .f32 0x00000000#32)) (ix2 r j) = relu (mat y r) j := by
  show max (y (ix2 r j)) (Ideal.ofBits .f32 0x00000000#32) = max (y (ix2 r j)) 0
  rw [Ideal.ofBits_zero_f32]

theorem layer512_row (x : FVec Ideal S1024x512 .bf16) (W : Vec Ideal S512x256 .f32) (b : Vec Ideal S1x256 .f32) (r : Fin 1024) :
    mat (addf (matmul dot_S1024x512_S512x256_S1024x256_1_0_0_1_n_n none x (truncf .bf16 W bitsLt_bf16_f32)
        (constant (F := Ideal) S1024x256 .f32 0x00000000#32))
      (broadcastTo S1024x256 (shapeCast S1x256 b shapeCasts_S1x256_S1x256) broadcasts_S1x256_S1024x256)) r
      = dense (mat x r) (mat W) (row b) := by
  funext j
  show addf _ _ (ix2 r j) = _
  rw [addf_apply, mm512_apply, shapeCast_self, broadcastTo_1b_ab_apply]
  rfl

theorem layer256_row (x : FVec Ideal S1024x256 .bf16) (W : Vec Ideal S256x128 .f32) (b : Vec Ideal S1x128 .f32) (r : Fin 1024) :
    mat (addf (matmul dot_S1024x256_S256x128_S1024x128_1_0_0_1_n_n none x (truncf .bf16 W bitsLt_bf16_f32)
        (constant (F := Ideal) S1024x128 .f32 0x00000000#32))
      (broadcastTo S1024x128 (shapeCast S1x128 b shapeCasts_S1x128_S1x128) broadcasts_S1x128_S1024x128)) r
      = dense (mat x r) (mat W) (row b) := by
  funext j
  show addf _ _ (ix2 r j) = _
  rw [addf_apply, mm256s_apply, shapeCast_self, broadcastTo_1b_ab_apply]
  rfl

theorem concat11_apply (x0 x1 x2 x3 x4 x5 x6 x7 x8 x9 x10 : FVec Ideal S1024x128 .bf16) (r : Fin 1024) (k : Fin 1408) :
    concatenate S1024x1408 1 [⟨S1024x128, x0⟩, ⟨S1024x128, x1⟩, ⟨S1024x128, x2⟩, ⟨S1024x128, x3⟩, ⟨S1024x128, x4⟩, ⟨S1024x128, x5⟩, ⟨S1024x128, x6⟩, ⟨S1024x128, x7⟩, ⟨S1024x128, x8⟩, ⟨S1024x128, x9⟩, ⟨S1024x128, x10⟩]
        concatenates_S1024x128_S1024x128_S1024x128_S1024x128_S1024x128_S1024x128_S1024x128_S1024x128_S1024x128_S1024x128_S1024x128_S1024x1408_d1 (ix2 r k)
      = (![x0, x1, x2, x3, x4, x5, x6, x7, x8, x9, x10] : Fin 11 → FVec Ideal S1024x128 .bf16) ⟨k.val / 128, by omega⟩ (ix2 r ⟨k.val % 128, by omega⟩) :=
  concatenate_ofFn_apply (t := S1024x1408) (s₁ := S1024x128) 1
    (![x0, x1, x2, x3, x4, x5, x6, x7, x8, x9, x10] : Fin 11 → FVec Ideal S1024x128 .bf16)
    concatenates_S1024x128_S1024x128_S1024x128_S1024x128_S1024x128_S1024x128_S1024x128_S1024x128_S1024x128_S1024x128_S1024x128_S1024x1408_d1 rfl 128 rfl (ix2 r k) ⟨k.val / 128, by omega⟩ rfl (ix2 r ⟨k.val % 128, by omega⟩) rfl
    (fun b hb => by
      match b with
      | ⟨0, _⟩ => rfl
      | ⟨1, _⟩ => exact absurd rfl hb)

theorem lhs1408_0 (j : S1024x512.Idx) (k : dot_S1024x1408_S1408x512_S1024x512_1_0_0_1_n_n.contr.Idx) :
    (dot_S1024x1408_S1408x512_S1024x512_1_0_0_1_n_n.lhsIdx j k 0 : ℕ) = j 0 := by
  simp [DotDims.lhsIdx, dot_S1024x1408_S1408x512_S1024x512_1_0_0_1_n_n]; rfl
theorem lhs1408_1 (j : S1024x512.Idx) (k : dot_S1024x1408_S1408x512_S1024x512_1_0_0_1_n_n.contr.Idx) :
    (dot_S1024x1408_S1408x512_S1024x512_1_0_0_1_n_n.lhsIdx j k 1 : ℕ) = k ⟨0, by decide⟩ := by
  simp [DotDims.lhsIdx, dot_S1024x1408_S1408x512_S1024x512_1_0_0_1_n_n]; rfl
theorem rhs1408_0 (j : S1024x512.Idx) (k : dot_S1024x1408_S1408x512_S1024x512_1_0_0_1_n_n.contr.Idx) :
    (dot_S1024x1408_S1408x512_S1024x512_1_0_0_1_n_n.rhsIdx j k 0 : ℕ) = k ⟨0, by decide⟩ := by
  simp [DotDims.rhsIdx, dot_S1024x1408_S1408x512_S1024x512_1_0_0_1_n_n]; rfl
theorem rhs1408_1 (j : S1024x512.Idx) (k : dot_S1024x1408_S1408x512_S1024x512_1_0_0_1_n_n.contr.Idx) :
    (dot_S1024x1408_S1408x512_S1024x512_1_0_0_1_n_n.rhsIdx j k 1 : ℕ) = j 1 := by
  simp [DotDims.rhsIdx, dot_S1024x1408_S1408x512_S1024x512_1_0_0_1_n_n]; rfl

theorem mm1408_apply (x : FVec Ideal S1024x1408 .bf16) (W : FVec Ideal S1408x512 .bf16) (r : Fin 1024) (j : Fin 512) :
    matmul dot_S1024x1408_S1408x512_S1024x512_1_0_0_1_n_n none x W (constant (F := Ideal) S1024x512 .f32 0x00000000#32) (ix2 r j)
      = ∑ k : Fin 1408, x (ix2 r k) * W (ix2 k j) := by
  refine (Ideal.matmul_constant_zero_apply _ none x W (ix2 r j)).trans ?_
  rw [← Equiv.sum_comp (contrEquiv1 dot_S1024x1408_S1408x512_S1024x512_1_0_0_1_n_n 1408 rfl rfl).symm]
  refine Finset.sum_congr rfl fun k _ => ?_
  have hk := contrEquiv1_symm_val dot_S1024x1408_S1408x512_S1024x512_1_0_0_1_n_n 1408 rfl rfl k
  congr 2
  · funext a
    match a with
    | ⟨0, _⟩ => exact Fin.ext (lhs1408_0 _ _)
    | ⟨1, _⟩ => exact Fin.ext ((lhs1408_1 _ _).trans hk)
  · funext a
    match a with
    | ⟨0, _⟩ => exact Fin.ext ((rhs1408_0 _ _).trans hk)
    | ⟨1, _⟩ => exact Fin.ext (rhs1408_1 _ _)

theorem layer1408_row (x : FVec Ideal S1024x1408 .bf16) (W : Vec Ideal S1408x512 .f32) (b : Vec Ideal S1x512 .f32) (r : Fin 1024) :
    mat (addf (matmul dot_S1024x1408_S1408x512_S1024x512_1_0_0_1_n_n none x (truncf .bf16 W bitsLt_bf16_f32)
        (constant (F := Ideal) S1024x512 .f32 0x00000000#32))
      (broadcastTo S1024x512 (shapeCast S1x512 b shapeCasts_S1x512_S1x512) broadcasts_S1x512_S1024x512)) r
      = dense (mat x r) (mat W) (row b) := by
  funext j
  show addf _ _ (ix2 r j) = _
  rw [addf_apply, mm1408_apply, shapeCast_self, broadcastTo_1b_ab_apply]
  rfl

theorem pool_apply (T : FVec Ideal S256x512 .bf16) (p : Vec Ideal S1024x256 .f32) (b : Vec Ideal S1x128 .f32)
    (r : Fin 1024) (j : Fin 128) :
    addf (minimumf (minimumf (minimumf (extractStridedSlice S1024x128 ![0, 0] (matmul dot_S1024x256_S256x512_S1024x512_1_0_0_1_n_n none (truncf .bf16 (shapeCast S1024x256 p shapeCasts_S1024x256_S1024x256) bitsLt_bf16_f32) T (constant (F := Ideal) S1024x512 .f32 0x00000000#32)) slices_S1024x512_o0_0_S1024x128)
          (extractStridedSlice S1024x128 ![0, 128] (matmul dot_S1024x256_S256x512_S1024x512_1_0_0_1_n_n none (truncf .bf16 (shapeCast S1024x256 p shapeCasts_S1024x256_S1024x256) bitsLt_bf16_f32) T (constant (F := Ideal) S1024x512 .f32 0x00000000#32)) slices_S1024x512_o0_128_S1024x128))
          (extractStridedSlice S1024x128 ![0, 256] (matmul dot_S1024x256_S256x512_S1024x512_1_0_0_1_n_n none (truncf .bf16 (shapeCast S1024x256 p shapeCasts_S1024x256_S1024x256) bitsLt_bf16_f32) T (constant (F := Ideal) S1024x512 .f32 0x00000000#32)) slices_S1024x512_o0_256_S1024x128))
          (extractStridedSlice S1024x128 ![0, 384] (matmul dot_S1024x256_S256x512_S1024x512_1_0_0_1_n_n none (truncf .bf16 (shapeCast S1024x256 p shapeCasts_S1024x256_S1024x256) bitsLt_bf16_f32) T (constant (F := Ideal) S1024x512 .f32 0x00000000#32)) slices_S1024x512_o0_384_S1024x128))
        (broadcastTo S1024x128 (shapeCast S1x128 b shapeCasts_S1x128_S1x128) broadcasts_S1x128_S1024x128) (ix2 r j)
      = poolK (mat p r) (mat T) (row b) j := by
  rw [addf_apply, minimumf_apply, minimumf_apply, minimumf_apply, shapeCast_self, broadcastTo_1b_ab_apply, shapeCast_self,
    slice2_axis1_apply 0 _ _ r j (⟨128 * 0 + j.val, by omega⟩ : Fin 512) (by simp),
    slice2_axis1_apply 128 _ _ r j (⟨128 * 1 + j.val, by omega⟩ : Fin 512) (by simp),
    slice2_axis1_apply 256 _ _ r j (⟨128 * 2 + j.val, by omega⟩ : Fin 512) (by simp),
    slice2_axis1_apply 384 _ _ r j (⟨128 * 3 + j.val, by omega⟩ : Fin 512) (by simp),
    mm256_apply, mm256_apply, mm256_apply, mm256_apply]
  rfl

theorem pieces_leaf (y0 y1 y2 y3 y4 : FVec Ideal S1024x128 .f32) (e : Fin 5 → Fin 128 → EReal) (r : Fin 1024)
    (h0 : mat y0 r = e 0) (h1 : mat y1 r = e 1) (h2 : mat y2 r = e 2) (h3 : mat y3 r = e 3) (h4 : mat y4 r = e 4)
    (k : Fin 1408) :
    (![truncf .bf16 y0 bitsLt_bf16_f32, truncf .bf16 y1 bitsLt_bf16_f32, truncf .bf16 y2 bitsLt_bf16_f32,
        truncf .bf16 y3 bitsLt_bf16_f32, truncf .bf16 y4 bitsLt_bf16_f32, (broadcast S1024x128 (Scalar.ofBits (F := Ideal) .bf16 0x0000#16)), (broadcast S1024x128 (Scalar.ofBits (F := Ideal) .bf16 0x0000#16)), (broadcast S1024x128 (Scalar.ofBits (F := Ideal) .bf16 0x0000#16)), (broadcast S1024x128 (Scalar.ofBits (F := Ideal) .bf16 0x0000#16)), (broadcast S1024x128 (Scalar.ofBits (F := Ideal) .bf16 0x0000#16)), (broadcast S1024x128 (Scalar.ofBits (F := Ideal) .bf16 0x0000#16))]
        : Fin 11 → FVec Ideal S1024x128 .bf16) ⟨k.val / 128, by omega⟩ (ix2 r ⟨k.val % 128, by omega⟩)
      = cat11 (pieces e (fun _ _ => 0)) k := by
  show _ = pieces e (fun _ _ => 0) ⟨k.val / 128, by omega⟩ ⟨k.val % 128, by omega⟩
  generalize (⟨k.val / 128, by omega⟩ : Fin 11) = q
  generalize (⟨k.val % 128, by omega⟩ : Fin 128) = c
  match q with
  | ⟨0, _⟩ => exact congrFun h0 c
  | ⟨1, _⟩ => exact congrFun h1 c
  | ⟨2, _⟩ => exact congrFun h2 c
  | ⟨3, _⟩ => exact congrFun h3 c
  | ⟨4, _⟩ => exact congrFun h4 c
  | ⟨5, _⟩ => exact Ideal.ofBits_zero_bf16
  | ⟨6, _⟩ => exact Ideal.ofBits_zero_bf16
  | ⟨7, _⟩ => exact Ideal.ofBits_zero_bf16
  | ⟨8, _⟩ => exact Ideal.ofBits_zero_bf16
  | ⟨9, _⟩ => exact Ideal.ofBits_zero_bf16
  | ⟨10, _⟩ => exact Ideal.ofBits_zero_bf16

theorem pay4_apply (v0 : Vec Ideal S1024x32 .f32) (v2 : Vec Ideal S32x128 .f32) (v5 : Vec Ideal S1x128 .f32)
    (r : Fin 1024) (j : Fin 128) :
    k0_pay4 (F := Ideal) v0 v2 v5 (ix2 r j) = dense (mat v0 r) (mat v2) (row v5) j := by
  unfold k0_pay4
  rw [addf_apply, mm32_apply, shapeCast_self, broadcastTo_1b_ab_apply]
  rfl

theorem pay5_apply (v9 : Vec Ideal S1024x32 .f32) (v11 : Vec Ideal S32x128 .f32) (v14 : Vec Ideal S1x128 .f32)
    (r : Fin 1024) (j : Fin 128) :
    k0_pay5 (F := Ideal) v9 v11 v14 (ix2 r j) = dense (mat v9 r) (mat v11) (row v14) j := by
  unfold k0_pay5
  rw [addf_apply, mm32_apply, shapeCast_self, broadcastTo_1b_ab_apply]
  rfl

theorem pay6_apply (v18 : Vec Ideal S1024x1000 .f32) (v20 : Vec Ideal S1000x128 .f32) (v23 : Vec Ideal S1x128 .f32)
    (v27 : Vec Ideal S1024x1 .f32) (r : Fin 1024) (j : Fin 128) :
    k0_pay6 (F := Ideal) v18 v20 v23 v27 (ix2 r j) = dense (mat v18 r) (mat v20) (row v23) j * col v27 r := by
  unfold k0_pay6
  rw [mulf_apply, addf_apply, mm1000_apply, shapeCast_self, broadcastTo_1b_ab_apply, shapeCast_self, broadcastTo_a1_ab_apply]
  rfl

theorem pay7_apply (v31 : Vec Ideal S256x512 .f32) (i : S256x512.Idx) : k0_pay7 (F := Ideal) v31 i = v31 i := by
  unfold k0_pay7
  rw [truncf_apply, shapeCast_self]

theorem pay8_apply (v8 v17 v30 : FVec Ideal S1024x128 .f32) (v33 : FVec Ideal S256x512 .bf16)
    (v34 : Vec Ideal S1024x256 .f32) (v45 : Vec Ideal S1x128 .f32) (v49 : Vec Ideal S1024x256 .f32) (v60 : Vec Ideal S1x128 .f32)
    (v71 : Vec Ideal S1408x512 .f32) (v74 : Vec Ideal S1x512 .f32) (r : Fin 1024) (j : Fin 512) :
    k0_pay8 (F := Ideal) v8 v17 v30 v33 v34 v45 v49 v60 v71 v74 (ix2 r j)
      = dense (cat11 (pieces ![mat v8 r, mat v17 r, poolK (mat v34 r) (mat v33) (row v45), poolK (mat v49 r) (mat v33) (row v60), mat v30 r]
          (fun _ _ => 0))) (mat v71) (row v74) j := by
  unfold k0_pay8
  refine (congrFun (layer1408_row _ v71 v74 r) j).trans ?_
  refine congrArg (fun x => dense x (mat v71) (row v74) j) ?_
  funext k
  refine (concat11_apply _ _ _ _ _ _ _ _ _ _ _ r k).trans ?_
  refine pieces_leaf _ _ _ _ _ _ r ?_ ?_ ?_ ?_ ?_ k
  · rfl
  · rfl
  · funext c; exact pool_apply v33 v34 v45 r c
  · funext c; exact pool_apply v33 v49 v60 r c
  · rfl

theorem pay1_apply (v77 : FVec Ideal S1024x512 .f32) (v81 : Vec Ideal S512x256 .f32) (v84 : Vec Ideal S1x256 .f32)
    (v91 : Vec Ideal S256x128 .f32) (v94 : Vec Ideal S1x128 .f32) (r : Fin 1024) (j : Fin 128) :
    k0_pay1 (F := Ideal) v77 v81 v84 v91 v94 (ix2 r j)
      = relu (dense (relu (dense (relu (mat v77 r)) (mat v81) (row v84))) (mat v91) (row v94)) j := by
  unfold k0_pay1
  rw [relu128_apply, layer256_row, relu256_row, layer512_row, relu512_row]

theorem pay2_apply (i : S1024x128.Idx) : k0_pay2 (F := Ideal) i = 0 := by
  unfold k0_pay2
  exact Ideal.ofBits_zero_f32
theorem pay3_apply (i : S1024x128.Idx) : k0_pay3 (F := Ideal) i = 0 := by
  unfold k0_pay3
  exact Ideal.ofBits_zero_f32

end Cert.KernelIdeal.Region0

end
-- ==== Proof.R0Tile.lean ====
import proofs.«410031_j84061099917532_3_alg».proof.Proof.Gen.KernelIdeal.Frame
import proofs.«410031_j84061099917532_3_alg».proof.Proof.R0Pay

noncomputable section

open Idealize.ShloMosaic Idealize.ShloMosaic.TcCoe Idealize.SL.Sem
open TreeNN ValueIdx

namespace Cert.KernelIdeal.Region0

open Cert.KernelIdeal Cert.KernelIdeal.Gen

theorem hz2 : (![0, 0] : Fin 2 → Nat) = fun _ => 0 := funext fun a => by
  match a with
  | ⟨0, _⟩ => rfl
  | ⟨1, _⟩ => rfl

theorem out20_apply (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S32x128 .f32) (x7 : Vec Ideal S1x128 .f32) (x8 : Vec Ideal S32x128 .f32) (x9 : Vec Ideal S1x128 .f32) (x10 : Vec Ideal S1000x128 .f32) (x11 : Vec Ideal S1x128 .f32) (x12 : Vec Ideal S256x512 .f32) (x13 : Vec Ideal S1x128 .f32) (x14 : Vec Ideal S1408x512 .f32) (x15 : Vec Ideal S1x512 .f32) (x16 : Vec Ideal S512x256 .f32) (x17 : Vec Ideal S1x256 .f32) (x18 : Vec Ideal S256x128 .f32) (x19 : Vec Ideal S1x128 .f32) (r : Fin 1024) (j : Fin 128) :
    out0_20 (F := Ideal) x0 x1 x2 x3 x4 x5 x6 x7 x8 x9 x10 x11 x12 x13 x14 x15 x16 x17 x18 x19 (ix2 r j)
      = leafRep (MLP3.ofTiles x14 x15 x16 x17 x18 x19)
          (embK (EmbW.ofTiles x6 x7 x8 x9 x10 x11 x13) (mat x12) (mat x0 r) (mat x1 r) (mat x2 r) (mat x3 r) (mat x4 r) (col x5 r)) j := by
  unfold out0_20
  rw [View.canon_unit_zero hz2]
  simp only [View.ld_unit_zero (S := S1024x32) hz2, View.ld_unit_zero (S := S32x128) hz2, View.ld_unit_zero (S := S1x128) hz2,
    View.ld_unit_zero (S := S1024x1000) hz2, View.ld_unit_zero (S := S1000x128) hz2, View.ld_unit_zero (S := S1024x1) hz2,
    View.ld_unit_zero (S := S256x512) hz2, View.ld_unit_zero (S := S1024x256) hz2, View.ld_unit_zero (S := S1408x512) hz2,
    View.ld_unit_zero (S := S1x512) hz2, View.ld_unit_zero (S := S512x256) hz2, View.ld_unit_zero (S := S1x256) hz2,
    View.ld_unit_zero (S := S256x128) hz2]
  have h4 : mat (k0_pay4 (F := Ideal) x0 x6 x7) r = dense (mat x0 r) (mat x6) (row x7) :=
    funext fun c => pay4_apply x0 x6 x7 r c
  have h5 : mat (k0_pay5 (F := Ideal) x1 x8 x9) r = dense (mat x1 r) (mat x8) (row x9) :=
    funext fun c => pay5_apply x1 x8 x9 r c
  have h6 : mat (k0_pay6 (F := Ideal) x2 x10 x11 x5) r = fun h => dense (mat x2 r) (mat x10) (row x11) h * col x5 r :=
    funext fun c => pay6_apply x2 x10 x11 x5 r c
  have h7 : mat (k0_pay7 (F := Ideal) x12) = mat x12 := by
    funext a b; exact pay7_apply x12 (ix2 a b)
  have h8 : mat (k0_pay8 (F := Ideal) (k0_pay4 x0 x6 x7) (k0_pay5 x1 x8 x9) (k0_pay6 x2 x10 x11 x5) (k0_pay7 x12)
        x3 x13 x4 x13 x14 x15) r
      = dense (cat11 (pieces ![mat (k0_pay4 (F := Ideal) x0 x6 x7) r, mat (k0_pay5 (F := Ideal) x1 x8 x9) r,
          poolK (mat x3 r) (mat (k0_pay7 (F := Ideal) x12)) (row x13), poolK (mat x4 r) (mat (k0_pay7 (F := Ideal) x12)) (row x13),
          mat (k0_pay6 (F := Ideal) x2 x10 x11 x5) r] (fun _ _ => 0))) (mat x14) (row x15) :=
    funext fun c => pay8_apply _ _ _ _ _ _ _ _ _ _ r c
  rw [pay1_apply, h8, h4, h5, h6, h7]
  rfl

theorem out21_apply (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S32x128 .f32) (x7 : Vec Ideal S1x128 .f32) (x8 : Vec Ideal S32x128 .f32) (x9 : Vec Ideal S1x128 .f32) (x10 : Vec Ideal S1000x128 .f32) (x11 : Vec Ideal S1x128 .f32) (x12 : Vec Ideal S256x512 .f32) (x13 : Vec Ideal S1x128 .f32) (x14 : Vec Ideal S1408x512 .f32) (x15 : Vec Ideal S1x512 .f32) (x16 : Vec Ideal S512x256 .f32) (x17 : Vec Ideal S1x256 .f32) (x18 : Vec Ideal S256x128 .f32) (x19 : Vec Ideal S1x128 .f32) (r : Fin 1024) (j : Fin 128) :
    out0_21 (F := Ideal) x0 x1 x2 x3 x4 x5 x6 x7 x8 x9 x10 x11 x12 x13 x14 x15 x16 x17 x18 x19 (ix2 r j) = 0 := by
  unfold out0_21
  rw [View.canon_unit_zero hz2]
  exact pay2_apply _

theorem out22_apply (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S32x128 .f32) (x7 : Vec Ideal S1x128 .f32) (x8 : Vec Ideal S32x128 .f32) (x9 : Vec Ideal S1x128 .f32) (x10 : Vec Ideal S1000x128 .f32) (x11 : Vec Ideal S1x128 .f32) (x12 : Vec Ideal S256x512 .f32) (x13 : Vec Ideal S1x128 .f32) (x14 : Vec Ideal S1408x512 .f32) (x15 : Vec Ideal S1x512 .f32) (x16 : Vec Ideal S512x256 .f32) (x17 : Vec Ideal S1x256 .f32) (x18 : Vec Ideal S256x128 .f32) (x19 : Vec Ideal S1x128 .f32) (r : Fin 1024) (j : Fin 128) :
    out0_22 (F := Ideal) x0 x1 x2 x3 x4 x5 x6 x7 x8 x9 x10 x11 x12 x13 x14 x15 x16 x17 x18 x19 (ix2 r j) = 0 := by
  unfold out0_22
  rw [View.canon_unit_zero hz2]
  exact pay3_apply _

end Cert.KernelIdeal.Region0

end
-- ==== Proof.R0Out.lean ====
import proofs.«410031_j84061099917532_3_alg».proof.Proof.Gen.KernelIdeal.Frame
import proofs.«410031_j84061099917532_3_alg».proof.Proof.R0Tile
import Idealize.ShloMosaic.Lib.Pipeline.Value

set_option maxRecDepth 16384

noncomputable section

open Idealize.ShloMosaic Idealize.ShloMosaic.TcCoe Idealize.SL.Sem
open TreeNN ValueIdx

namespace Cert.KernelIdeal.Region0

open Cert.KernelIdeal Cert.KernelIdeal.Gen

variable (V : (c : Dev nD) → (b : Ref sig .tc) → Buf (Elt Ideal) ((c : Thread nD τ).loc b)) (c : Dev nD)

def mlp : MLP3 :=
  MLP3.ofTiles (V c (Pipeline.arrRef spec0 14) : S1408x512.Idx → EReal) (V c (Pipeline.arrRef spec0 15) : S1x512.Idx → EReal)
    (V c (Pipeline.arrRef spec0 16) : S512x256.Idx → EReal) (V c (Pipeline.arrRef spec0 17) : S1x256.Idx → EReal)
    (V c (Pipeline.arrRef spec0 18) : S256x128.Idx → EReal) (V c (Pipeline.arrRef spec0 19) : S1x128.Idx → EReal)

def embW : EmbW :=
  EmbW.ofTiles (V c (Pipeline.arrRef spec0 6) : S32x128.Idx → EReal) (V c (Pipeline.arrRef spec0 7) : S1x128.Idx → EReal)
    (V c (Pipeline.arrRef spec0 8) : S32x128.Idx → EReal) (V c (Pipeline.arrRef spec0 9) : S1x128.Idx → EReal)
    (V c (Pipeline.arrRef spec0 10) : S1000x128.Idx → EReal) (V c (Pipeline.arrRef spec0 11) : S1x128.Idx → EReal)
    (V c (Pipeline.arrRef spec0 13) : S1x128.Idx → EReal)

def E : Fin 64512 → Fin 5 → Fin 128 → EReal := fun i =>
  embK (embW V c) (mat (V c (Pipeline.arrRef spec0 12) : S256x512.Idx → EReal))
    (mat (V c (Pipeline.arrRef spec0 0) : S64512x32.Idx → EReal) i) (mat (V c (Pipeline.arrRef spec0 1) : S64512x32.Idx → EReal) i)
    (mat (V c (Pipeline.arrRef spec0 2) : S64512x1000.Idx → EReal) i) (mat (V c (Pipeline.arrRef spec0 3) : S64512x256.Idx → EReal) i)
    (mat (V c (Pipeline.arrRef spec0 4) : S64512x256.Idx → EReal) i) (col (V c (Pipeline.arrRef spec0 5) : S64512x1.Idx → EReal) i)

def value : Carry 32768 := leafK (E V c) (mlp V c)

namespace Out

theorem idx_facts : ∀ t : Fin cfg0.N,
    win0_0.index t (0 : Fin 2) = 31 + t.val
    ∧ win0_0.index t (1 : Fin 2) = 0
    ∧ win0_1.index t (0 : Fin 2) = 31 + t.val
    ∧ win0_1.index t (1 : Fin 2) = 0
    ∧ win0_2.index t (0 : Fin 2) = 31 + t.val
    ∧ win0_2.index t (1 : Fin 2) = 0
    ∧ win0_3.index t (0 : Fin 2) = 31 + t.val
    ∧ win0_3.index t (1 : Fin 2) = 0
    ∧ win0_4.index t (0 : Fin 2) = 31 + t.val
    ∧ win0_4.index t (1 : Fin 2) = 0
    ∧ win0_5.index t (0 : Fin 2) = 31 + t.val
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = 0
    ∧ win0_16.index t (1 : Fin 2) = 0
    ∧ win0_17.index t (0 : Fin 2) = 0
    ∧ win0_17.index t (1 : Fin 2) = 0
    ∧ win0_18.index t (0 : Fin 2) = 0
    ∧ win0_18.index t (1 : Fin 2) = 0
    ∧ win0_19.index t (0 : Fin 2) = 0
    ∧ win0_19.index t (1 : Fin 2) = 0
    ∧ win0_20.index t (0 : Fin 2) = t.val
    ∧ win0_20.index t (1 : Fin 2) = 0
    ∧ win0_21.index t (0 : Fin 2) = t.val
    ∧ win0_21.index t (1 : Fin 2) = 0
    ∧ win0_22.index t (0 : Fin 2) = t.val
    ∧ win0_22.index t (1 : Fin 2) = 0 :=
  (by decide +kernel : ∀ t : Fin grid0.N, _)

def outRow (t : Fin cfg0.N) (r : Fin 1024) : Fin 32768 :=
  ⟨1024 * t.val + r.val, by have := lt_of_lt_of_eq t.isLt N_0; have := r.isLt; omega⟩

def nodeRow (t : Fin cfg0.N) (r : Fin 1024) : Fin 64512 :=
  ⟨31744 + (1024 * t.val + r.val), by have := lt_of_lt_of_eq t.isLt N_0; have := r.isLt; omega⟩

theorem ntile0 (t : Fin cfg0.N) (r : Fin 1024) (k : Fin 32) :
    (iblk0 V c 0 t : Vec Ideal S1024x32 .f32) (ix2 r k) = (V c (Pipeline.arrRef spec0 0) : S64512x32.Idx → EReal) (ix2 (nodeRow t r) k) := by
  have hf := idx_facts t
  show V c (Pipeline.arrRef spec0 0) (((cfg0.win 0).blk t).view.emb (ix2 r k)) = _
  refine congrArg _ (funext fun a => Fin.ext ?_)
  match a with
  | ⟨0, _⟩ => show win0_0.index t (0 : Fin 2) * 1024 + 1 * r.val = 31744 + (1024 * t.val + r.val); omega
  | ⟨1, _⟩ => show win0_0.index t (1 : Fin 2) * 32 + 1 * k.val = k.val; omega

theorem ntile1 (t : Fin cfg0.N) (r : Fin 1024) (k : Fin 32) :
    (iblk0 V c 1 t : Vec Ideal S1024x32 .f32) (ix2 r k) = (V c (Pipeline.arrRef spec0 1) : S64512x32.Idx → EReal) (ix2 (nodeRow t r) k) := by
  have hf := idx_facts t
  show V c (Pipeline.arrRef spec0 1) (((cfg0.win 1).blk t).view.emb (ix2 r k)) = _
  refine congrArg _ (funext fun a => Fin.ext ?_)
  match a with
  | ⟨0, _⟩ => show win0_1.index t (0 : Fin 2) * 1024 + 1 * r.val = 31744 + (1024 * t.val + r.val); omega
  | ⟨1, _⟩ => show win0_1.index t (1 : Fin 2) * 32 + 1 * k.val = k.val; omega

theorem ntile2 (t : Fin cfg0.N) (r : Fin 1024) (k : Fin 1000) :
    (iblk0 V c 2 t : Vec Ideal S1024x1000 .f32) (ix2 r k) = (V c (Pipeline.arrRef spec0 2) : S64512x1000.Idx → EReal) (ix2 (nodeRow t r) k) := by
  have hf := idx_facts t
  show V c (Pipeline.arrRef spec0 2) (((cfg0.win 2).blk t).view.emb (ix2 r k)) = _
  refine congrArg _ (funext fun a => Fin.ext ?_)
  match a with
  | ⟨0, _⟩ => show win0_2.index t (0 : Fin 2) * 1024 + 1 * r.val = 31744 + (1024 * t.val + r.val); omega
  | ⟨1, _⟩ => show win0_2.index t (1 : Fin 2) * 1000 + 1 * k.val = k.val; omega

theorem ntile3 (t : Fin cfg0.N) (r : Fin 1024) (k : Fin 256) :
    (iblk0 V c 3 t : Vec Ideal S1024x256 .f32) (ix2 r k) = (V c (Pipeline.arrRef spec0 3) : S64512x256.Idx → EReal) (ix2 (nodeRow t r) k) := by
  have hf := idx_facts t
  show V c (Pipeline.arrRef spec0 3) (((cfg0.win 3).blk t).view.emb (ix2 r k)) = _
  refine congrArg _ (funext fun a => Fin.ext ?_)
  match a with
  | ⟨0, _⟩ => show win0_3.index t (0 : Fin 2) * 1024 + 1 * r.val = 31744 + (1024 * t.val + r.val); omega
  | ⟨1, _⟩ => show win0_3.index t (1 : Fin 2) * 256 + 1 * k.val = k.val; omega

theorem ntile4 (t : Fin cfg0.N) (r : Fin 1024) (k : Fin 256) :
    (iblk0 V c 4 t : Vec Ideal S1024x256 .f32) (ix2 r k) = (V c (Pipeline.arrRef spec0 4) : S64512x256.Idx → EReal) (ix2 (nodeRow t r) k) := by
  have hf := idx_facts t
  show V c (Pipeline.arrRef spec0 4) (((cfg0.win 4).blk t).view.emb (ix2 r k)) = _
  refine congrArg _ (funext fun a => Fin.ext ?_)
  match a with
  | ⟨0, _⟩ => show win0_4.index t (0 : Fin 2) * 1024 + 1 * r.val = 31744 + (1024 * t.val + r.val); omega
  | ⟨1, _⟩ => show win0_4.index t (1 : Fin 2) * 256 + 1 * k.val = k.val; omega

theorem ntile5 (t : Fin cfg0.N) (r : Fin 1024) (k : Fin 1) :
    (iblk0 V c 5 t : Vec Ideal S1024x1 .f32) (ix2 r k) = (V c (Pipeline.arrRef spec0 5) : S64512x1.Idx → EReal) (ix2 (nodeRow t r) k) := by
  have hf := idx_facts t
  show V c (Pipeline.arrRef spec0 5) (((cfg0.win 5).blk t).view.emb (ix2 r k)) = _
  refine congrArg _ (funext fun a => Fin.ext ?_)
  match a with
  | ⟨0, _⟩ => show win0_5.index t (0 : Fin 2) * 1024 + 1 * r.val = 31744 + (1024 * t.val + r.val); omega
  | ⟨1, _⟩ => show win0_5.index t (1 : Fin 2) * 1 + 1 * k.val = k.val; omega

theorem wtile6 (t : Fin cfg0.N) : (iblk0 V c 6 t : Vec Ideal S32x128 .f32) = (V c (Pipeline.arrRef spec0 6) : S32x128.Idx → EReal) := by
  have hf := idx_facts t
  funext y
  show V c (Pipeline.arrRef spec0 6) (((cfg0.win 6).blk t).view.emb y) = _
  refine congrArg _ (funext fun a => Fin.ext ?_)
  match a with
  | ⟨0, _⟩ => show win0_6.index t (0 : Fin 2) * 32 + 1 * (y 0).val = (y 0).val; omega
  | ⟨1, _⟩ => show win0_6.index t (1 : Fin 2) * 128 + 1 * (y 1).val = (y 1).val; omega

theorem wtile7 (t : Fin cfg0.N) : (iblk0 V c 7 t : Vec Ideal S1x128 .f32) = (V c (Pipeline.arrRef spec0 7) : S1x128.Idx → EReal) := by
  have hf := idx_facts t
  funext y
  show V c (Pipeline.arrRef spec0 7) (((cfg0.win 7).blk t).view.emb y) = _
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem wtile8 (t : Fin cfg0.N) : (iblk0 V c 8 t : Vec Ideal S32x128 .f32) = (V c (Pipeline.arrRef spec0 8) : S32x128.Idx → EReal) := by
  have hf := idx_facts t
  funext y
  show V c (Pipeline.arrRef spec0 8) (((cfg0.win 8).blk t).view.emb y) = _
  refine congrArg _ (funext fun a => Fin.ext ?_)
  match a with
  | ⟨0, _⟩ => show win0_8.index t (0 : Fin 2) * 32 + 1 * (y 0).val = (y 0).val; omega
  | ⟨1, _⟩ => show win0_8.index t (1 : Fin 2) * 128 + 1 * (y 1).val = (y 1).val; omega

theorem wtile9 (t : Fin cfg0.N) : (iblk0 V c 9 t : Vec Ideal S1x128 .f32) = (V c (Pipeline.arrRef spec0 9) : S1x128.Idx → EReal) := by
  have hf := idx_facts t
  funext y
  show V c (Pipeline.arrRef spec0 9) (((cfg0.win 9).blk t).view.emb y) = _
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

theorem wtile10 (t : Fin cfg0.N) : (iblk0 V c 10 t : Vec Ideal S1000x128 .f32) = (V c (Pipeline.arrRef spec0 10) : S1000x128.Idx → EReal) := by
  have hf := idx_facts t
  funext y
  show V c (Pipeline.arrRef spec0 10) (((cfg0.win 10).blk t).view.emb y) = _
  refine congrArg _ (funext fun a => Fin.ext ?_)
  match a with
  | ⟨0, _⟩ => show win0_10.index t (0 : Fin 2) * 1000 + 1 * (y 0).val = (y 0).val; omega
  | ⟨1, _⟩ => show win0_10.index t (1 : Fin 2) * 128 + 1 * (y 1).val = (y 1).val; omega

theorem wtile11 (t : Fin cfg0.N) : (iblk0 V c 11 t : Vec Ideal S1x128 .f32) = (V c (Pipeline.arrRef spec0 11) : S1x128.Idx → EReal) := by
  have hf := idx_facts t
  funext y
  show V c (Pipeline.arrRef spec0 11) (((cfg0.win 11).blk t).view.emb y) = _
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 128 + 1 * (y 1).val = (y 1).val; omega

theorem wtile12 (t : Fin cfg0.N) : (iblk0 V c 12 t : Vec Ideal S256x512 .f32) = (V c (Pipeline.arrRef spec0 12) : S256x512.Idx → EReal) := by
  have hf := idx_facts t
  funext y
  show V c (Pipeline.arrRef spec0 12) (((cfg0.win 12).blk t).view.emb y) = _
  refine congrArg _ (funext fun a => Fin.ext ?_)
  match a with
  | ⟨0, _⟩ => show win0_12.index t (0 : Fin 2) * 256 + 1 * (y 0).val = (y 0).val; omega
  | ⟨1, _⟩ => show win0_12.index t (1 : Fin 2) * 512 + 1 * (y 1).val = (y 1).val; omega

theorem wtile13 (t : Fin cfg0.N) : (iblk0 V c 13 t : Vec Ideal S1x128 .f32) = (V c (Pipeline.arrRef spec0 13) : S1x128.Idx → EReal) := by
  have hf := idx_facts t
  funext y
  show V c (Pipeline.arrRef spec0 13) (((cfg0.win 13).blk t).view.emb y) = _
  refine congrArg _ (funext fun a => Fin.ext ?_)
  match a with
  | ⟨0, _⟩ => show win0_13.index t (0 : Fin 2) * 1 + 1 * (y 0).val = (y 0).val; omega
  | ⟨1, _⟩ => show win0_13.index t (1 : Fin 2) * 128 + 1 * (y 1).val = (y 1).val; omega

theorem wtile14 (t : Fin cfg0.N) : (iblk0 V c 14 t : Vec Ideal S1408x512 .f32) = (V c (Pipeline.arrRef spec0 14) : S1408x512.Idx → EReal) := by
  have hf := idx_facts t
  funext y
  show V c (Pipeline.arrRef spec0 14) (((cfg0.win 14).blk t).view.emb y) = _
  refine congrArg _ (funext fun a => Fin.ext ?_)
  match a with
  | ⟨0, _⟩ => show win0_14.index t (0 : Fin 2) * 1408 + 1 * (y 0).val = (y 0).val; omega
  | ⟨1, _⟩ => show win0_14.index t (1 : Fin 2) * 512 + 1 * (y 1).val = (y 1).val; omega

theorem wtile15 (t : Fin cfg0.N) : (iblk0 V c 15 t : Vec Ideal S1x512 .f32) = (V c (Pipeline.arrRef spec0 15) : S1x512.Idx → EReal) := by
  have hf := idx_facts t
  funext y
  show V c (Pipeline.arrRef spec0 15) (((cfg0.win 15).blk t).view.emb y) = _
  refine congrArg _ (funext fun a => Fin.ext ?_)
  match a with
  | ⟨0, _⟩ => show win0_15.index t (0 : Fin 2) * 1 + 1 * (y 0).val = (y 0).val; omega
  | ⟨1, _⟩ => show win0_15.index t (1 : Fin 2) * 512 + 1 * (y 1).val = (y 1).val; omega

theorem wtile16 (t : Fin cfg0.N) : (iblk0 V c 16 t : Vec Ideal S512x256 .f32) = (V c (Pipeline.arrRef spec0 16) : S512x256.Idx → EReal) := by
  have hf := idx_facts t
  funext y
  show V c (Pipeline.arrRef spec0 16) (((cfg0.win 16).blk t).view.emb y) = _
  refine congrArg _ (funext fun a => Fin.ext ?_)
  match a with
  | ⟨0, _⟩ => show win0_16.index t (0 : Fin 2) * 512 + 1 * (y 0).val = (y 0).val; omega
  | ⟨1, _⟩ => show win0_16.index t (1 : Fin 2) * 256 + 1 * (y 1).val = (y 1).val; omega

theorem wtile17 (t : Fin cfg0.N) : (iblk0 V c 17 t : Vec Ideal S1x256 .f32) = (V c (Pipeline.arrRef spec0 17) : S1x256.Idx → EReal) := by
  have hf := idx_facts t
  funext y
  show V c (Pipeline.arrRef spec0 17) (((cfg0.win 17).blk t).view.emb y) = _
  refine congrArg _ (funext fun a => Fin.ext ?_)
  match a with
  | ⟨0, _⟩ => show win0_17.index t (0 : Fin 2) * 1 + 1 * (y 0).val = (y 0).val; omega
  | ⟨1, _⟩ => show win0_17.index t (1 : Fin 2) * 256 + 1 * (y 1).val = (y 1).val; omega

theorem wtile18 (t : Fin cfg0.N) : (iblk0 V c 18 t : Vec Ideal S256x128 .f32) = (V c (Pipeline.arrRef spec0 18) : S256x128.Idx → EReal) := by
  have hf := idx_facts t
  funext y
  show V c (Pipeline.arrRef spec0 18) (((cfg0.win 18).blk t).view.emb y) = _
  refine congrArg _ (funext fun a => Fin.ext ?_)
  match a with
  | ⟨0, _⟩ => show win0_18.index t (0 : Fin 2) * 256 + 1 * (y 0).val = (y 0).val; omega
  | ⟨1, _⟩ => show win0_18.index t (1 : Fin 2) * 128 + 1 * (y 1).val = (y 1).val; omega

theorem wtile19 (t : Fin cfg0.N) : (iblk0 V c 19 t : Vec Ideal S1x128 .f32) = (V c (Pipeline.arrRef spec0 19) : S1x128.Idx → EReal) := by
  have hf := idx_facts t
  funext y
  show V c (Pipeline.arrRef spec0 19) (((cfg0.win 19).blk t).view.emb y) = _
  refine congrArg _ (funext fun a => Fin.ext ?_)
  match a with
  | ⟨0, _⟩ => show win0_19.index t (0 : Fin 2) * 1 + 1 * (y 0).val = (y 0).val; omega
  | ⟨1, _⟩ => show win0_19.index t (1 : Fin 2) * 128 + 1 * (y 1).val = (y 1).val; omega

theorem leaf_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S32x128 .f32) (x7 : Vec Ideal S1x128 .f32) (x8 : Vec Ideal S32x128 .f32) (x9 : Vec Ideal S1x128 .f32) (x10 : Vec Ideal S1000x128 .f32) (x11 : Vec Ideal S1x128 .f32) (x12 : Vec Ideal S256x512 .f32) (x13 : Vec Ideal S1x128 .f32) (x14 : Vec Ideal S1408x512 .f32) (x15 : Vec Ideal S1x512 .f32) (x16 : Vec Ideal S512x256 .f32) (x17 : Vec Ideal S1x256 .f32) (x18 : Vec Ideal S256x128 .f32) (x19 : Vec Ideal S1x128 .f32)
    (A0 : S64512x32.Idx → EReal) (A1 : S64512x32.Idx → EReal) (A2 : S64512x1000.Idx → EReal) (A3 : S64512x256.Idx → EReal) (A4 : S64512x256.Idx → EReal) (A5 : S64512x1.Idx → EReal) (A6 : S32x128.Idx → EReal) (A7 : S1x128.Idx → EReal) (A8 : S32x128.Idx → EReal) (A9 : S1x128.Idx → EReal) (A10 : S1000x128.Idx → EReal) (A11 : S1x128.Idx → EReal) (A12 : S256x512.Idx → EReal) (A13 : S1x128.Idx → EReal) (A14 : S1408x512.Idx → EReal) (A15 : S1x512.Idx → EReal) (A16 : S512x256.Idx → EReal) (A17 : S1x256.Idx → EReal) (A18 : S256x128.Idx → EReal) (A19 : S1x128.Idx → EReal)
    (r : Fin 1024) (i : Fin 64512)
    (h0 : ∀ k, x0 (ix2 r k) = A0 (ix2 i k)) (h1 : ∀ k, x1 (ix2 r k) = A1 (ix2 i k)) (h2 : ∀ k, x2 (ix2 r k) = A2 (ix2 i k)) (h3 : ∀ k, x3 (ix2 r k) = A3 (ix2 i k)) (h4 : ∀ k, x4 (ix2 r k) = A4 (ix2 i k)) (h5 : ∀ k, x5 (ix2 r k) = A5 (ix2 i k))
    (h6 : x6 = A6) (h7 : x7 = A7) (h8 : x8 = A8) (h9 : x9 = A9) (h10 : x10 = A10) (h11 : x11 = A11) (h12 : x12 = A12) (h13 : x13 = A13) (h14 : x14 = A14) (h15 : x15 = A15) (h16 : x16 = A16) (h17 : x17 = A17) (h18 : x18 = A18) (h19 : x19 = A19) (j : Fin 128) :
    out0_20 (F := Ideal) x0 x1 x2 x3 x4 x5 x6 x7 x8 x9 x10 x11 x12 x13 x14 x15 x16 x17 x18 x19 (ix2 r j)
      = leafRep (MLP3.ofTiles A14 A15 A16 A17 A18 A19)
        (embK (EmbW.ofTiles A6 A7 A8 A9 A10 A11 A13) (mat A12) (mat A0 i) (mat A1 i) (mat A2 i) (mat A3 i) (mat A4 i) (col A5 i)) j := by
  subst h6 h7 h8 h9 h10 h11 h12 h13 h14 h15 h16 h17 h18 h19
  have e0 : mat x0 r = mat A0 i := funext h0
  have e1 : mat x1 r = mat A1 i := funext h1
  have e2 : mat x2 r = mat A2 i := funext h2
  have e3 : mat x3 r = mat A3 i := funext h3
  have e4 : mat x4 r = mat A4 i := funext h4
  have e5 : col x5 r = col A5 i := h5 0
  rw [out20_apply, e0, e1, e2, e3, e4, e5]

theorem tile20_point (t : Fin cfg0.N) (r : Fin 1024) (j : Fin 128) :
    out0_20 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (ix2 r j)
      = leafRep (mlp V c) (E V c (nodeRow t r)) j :=
  leaf_point (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t)
    (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) (V c (Pipeline.arrRef spec0 12)) (V c (Pipeline.arrRef spec0 13)) (V c (Pipeline.arrRef spec0 14)) (V c (Pipeline.arrRef spec0 15)) (V c (Pipeline.arrRef spec0 16)) (V c (Pipeline.arrRef spec0 17)) (V c (Pipeline.arrRef spec0 18)) (V c (Pipeline.arrRef spec0 19))
    r (nodeRow t r) (ntile0 V c t r) (ntile1 V c t r) (ntile2 V c t r) (ntile3 V c t r) (ntile4 V c t r) (ntile5 V c t r)
    (wtile6 V c t) (wtile7 V c t) (wtile8 V c t) (wtile9 V c t) (wtile10 V c t) (wtile11 V c t) (wtile12 V c t) (wtile13 V c t) (wtile14 V c t) (wtile15 V c t) (wtile16 V c t) (wtile17 V c t) (wtile18 V c t) (wtile19 V c t) j

theorem flushed20_eq (t : Fin cfg0.N) :
    (dat0 V c).flushed 20 t = ((cfg0.win 20).blk t).view.read (Elt Ideal) (arr2 (value V c).rep) := by
  show (cfg0.win 20).cut (grid0.coords t) ((dat0 V c).after 20 t) = _
  rw [after0_20]
  refine ext2 fun r j => ?_
  refine (tile20_point V c t r j).trans ?_
  have hf := idx_facts t
  have hemb : ((cfg0.win 20).blk t).view.emb (ix2 r j) = ix2 (outRow t r) j := by
    funext a; apply Fin.ext
    match a with
    | ⟨0, _⟩ => show win0_20.index t (0 : Fin 2) * 1024 + 1 * r.val = 1024 * t.val + r.val; omega
    | ⟨1, _⟩ => show win0_20.index t (1 : Fin 2) * 128 + 1 * j.val = j.val; omega
  show _ = arr2 (value V c).rep (((cfg0.win 20).blk t).view.emb (ix2 r j))
  rw [hemb, arr2_ix2]
  rfl

theorem mem_blk20 (t : Fin cfg0.N) (i : S32768x128.Idx) :
    i ∈ ((cfg0.win 20).blk t).view.set ↔ ∀ a : Fin 2, win0_20.index t a * S1024x128.size a ≤ (i a).val ∧ (i a).val < win0_20.index t a * S1024x128.size a + S1024x128.size a := by
  show i ∈ ((View.whole main_v31_0).slice (win0_20.rect t)).set ↔ _
  rw [View.set_slice_whole, Rect.mem_set_unit]
  exact Iff.rfl

theorem cover20 (i : S32768x128.Idx) : ∃ t : Fin cfg0.N, (cfg0.win 20).flush t = true ∧ i ∈ ((cfg0.win 20).blk t).view.set := by
  have hi0 : (i 0).val < 32768 := (i 0).isLt
  have hi1 : (i 1).val < 128 := (i 1).isLt
  obtain ⟨t, ht⟩ : ∃ t : Fin cfg0.N, t.val = (i 0).val / 1024 :=
    ⟨⟨(i 0).val / 1024, by rw [show cfg0.N = 32 from N_0]; omega⟩, rfl⟩
  refine ⟨t, flush0_20 t, ?_⟩
  rw [mem_blk20]
  have hf := idx_facts t
  intro a
  match a with
  | ⟨0, _⟩ =>
    show win0_20.index t (0 : Fin 2) * 1024 ≤ (i 0).val ∧ (i 0).val < win0_20.index t (0 : Fin 2) * 1024 + 1024
    omega
  | ⟨1, _⟩ =>
    show win0_20.index t (1 : Fin 2) * 128 ≤ (i 1).val ∧ (i 1).val < win0_20.index t (1 : Fin 2) * 128 + 128
    omega

theorem flushed21_eq (t : Fin cfg0.N) :
    (dat0 V c).flushed 21 t = ((cfg0.win 21).blk t).view.read (Elt Ideal) (arr2 (value V c).lrep) := by
  show (cfg0.win 21).cut (grid0.coords t) ((dat0 V c).after 21 t) = _
  rw [after0_21]
  refine ext2 fun r j => ?_
  exact out21_apply _ _ _ _ _ _ _ _ _ _ _ _ _ _ _ _ _ _ _ _ r j

theorem mem_blk21 (t : Fin cfg0.N) (i : S32768x128.Idx) :
    i ∈ ((cfg0.win 21).blk t).view.set ↔ ∀ a : Fin 2, win0_21.index t a * S1024x128.size a ≤ (i a).val ∧ (i a).val < win0_21.index t a * S1024x128.size a + S1024x128.size a := by
  show i ∈ ((View.whole main_v31_1).slice (win0_21.rect t)).set ↔ _
  rw [View.set_slice_whole, Rect.mem_set_unit]
  exact Iff.rfl

theorem cover21 (i : S32768x128.Idx) : ∃ t : Fin cfg0.N, (cfg0.win 21).flush t = true ∧ i ∈ ((cfg0.win 21).blk t).view.set := by
  have hi0 : (i 0).val < 32768 := (i 0).isLt
  have hi1 : (i 1).val < 128 := (i 1).isLt
  obtain ⟨t, ht⟩ : ∃ t : Fin cfg0.N, t.val = (i 0).val / 1024 :=
    ⟨⟨(i 0).val / 1024, by rw [show cfg0.N = 32 from N_0]; omega⟩, rfl⟩
  refine ⟨t, flush0_21 t, ?_⟩
  rw [mem_blk21]
  have hf := idx_facts t
  intro a
  match a with
  | ⟨0, _⟩ =>
    show win0_21.index t (0 : Fin 2) * 1024 ≤ (i 0).val ∧ (i 0).val < win0_21.index t (0 : Fin 2) * 1024 + 1024
    omega
  | ⟨1, _⟩ =>
    show win0_21.index t (1 : Fin 2) * 128 ≤ (i 1).val ∧ (i 1).val < win0_21.index t (1 : Fin 2) * 128 + 128
    omega

theorem flushed22_eq (t : Fin cfg0.N) :
    (dat0 V c).flushed 22 t = ((cfg0.win 22).blk t).view.read (Elt Ideal) (arr2 (value V c).rrep) := by
  show (cfg0.win 22).cut (grid0.coords t) ((dat0 V c).after 22 t) = _
  rw [after0_22]
  refine ext2 fun r j => ?_
  exact out22_apply _ _ _ _ _ _ _ _ _ _ _ _ _ _ _ _ _ _ _ _ r j

theorem mem_blk22 (t : Fin cfg0.N) (i : S32768x128.Idx) :
    i ∈ ((cfg0.win 22).blk t).view.set ↔ ∀ a : Fin 2, win0_22.index t a * S1024x128.size a ≤ (i a).val ∧ (i a).val < win0_22.index t a * S1024x128.size a + S1024x128.size a := by
  show i ∈ ((View.whole main_v31_2).slice (win0_22.rect t)).set ↔ _
  rw [View.set_slice_whole, Rect.mem_set_unit]
  exact Iff.rfl

theorem cover22 (i : S32768x128.Idx) : ∃ t : Fin cfg0.N, (cfg0.win 22).flush t = true ∧ i ∈ ((cfg0.win 22).blk t).view.set := by
  have hi0 : (i 0).val < 32768 := (i 0).isLt
  have hi1 : (i 1).val < 128 := (i 1).isLt
  obtain ⟨t, ht⟩ : ∃ t : Fin cfg0.N, t.val = (i 0).val / 1024 :=
    ⟨⟨(i 0).val / 1024, by rw [show cfg0.N = 32 from N_0]; omega⟩, rfl⟩
  refine ⟨t, flush0_22 t, ?_⟩
  rw [mem_blk22]
  have hf := idx_facts t
  intro a
  match a with
  | ⟨0, _⟩ =>
    show win0_22.index t (0 : Fin 2) * 1024 ≤ (i 0).val ∧ (i 0).val < win0_22.index t (0 : Fin 2) * 1024 + 1024
    omega
  | ⟨1, _⟩ =>
    show win0_22.index t (1 : Fin 2) * 128 ≤ (i 1).val ∧ (i 1).val < win0_22.index t (1 : Fin 2) * 128 + 128
    omega

end Out

theorem rep_eq : ((dat0 V c).arrAt 20 cfg0.N : S32768x128.Idx → EReal) = arr2 (value V c).rep :=
  (dat0 V c).arrAt_eq_of_cover 20 (arr2 (value V c).rep) (fun t _ => Out.flushed20_eq V c t) Out.cover20

theorem lrep_eq : ((dat0 V c).arrAt 21 cfg0.N : S32768x128.Idx → EReal) = arr2 (value V c).lrep :=
  (dat0 V c).arrAt_eq_of_cover 21 (arr2 (value V c).lrep) (fun t _ => Out.flushed21_eq V c t) Out.cover21

theorem rrep_eq : ((dat0 V c).arrAt 22 cfg0.N : S32768x128.Idx → EReal) = arr2 (value V c).rrep :=
  (dat0 V c).arrAt_eq_of_cover 22 (arr2 (value V c).rrep) (fun t _ => Out.flushed22_eq V c t) Out.cover22

end Cert.KernelIdeal.Region0

end
-- ==== Proof.KLevel5.lean ====
import proofs.«410031_j84061099917532_3_alg».proof.Proof.Gen.KernelIdeal.Frame
import proofs.«410031_j84061099917532_3_alg».proof.Proof.Spec
import proofs.«410031_j84061099917532_3_alg».proof.Proof.SpecPool
import proofs.«410031_j84061099917532_3_alg».proof.Proof.KArgs
import proofs.«410031_j84061099917532_3_alg».proof.Proof.KKeep
import proofs.«410031_j84061099917532_3_alg».proof.Proof.KStable
import proofs.«410031_j84061099917532_3_alg».proof.Proof.KHost0
import proofs.«410031_j84061099917532_3_alg».proof.Proof.R0Out

noncomputable section

open Idealize.ShloMosaic Idealize.ShloMosaic.TcCoe Idealize.SL.Sem
open TreeNN ValueIdx

namespace Cert.KernelIdeal.Chain

open Cert.KernelIdeal Cert.KernelIdeal.Gen

variable (m : (ℓ : Loc nD τ sig) → Buf (Elt Ideal) ℓ) (ρ : Dev nD → PrngReg) (c : Dev nD)

namespace Leaves

theorem entry_arg (b : Ref sig .tc) (hb : b ∈ Stable.args) :
    W1 m ρ c (Proc.devRef .tc b) = m ((c : Thread nD τ).loc b) :=
  Stable.W1_arg m ρ c b hb

theorem emb_congr {w w' : EmbW} {Wp : Fin 64 → Fin 128 → EReal} {op op' feat feat' : Fin 32 → EReal}
    {bm bm' : Fin 1000 → EReal} {p1 p2 : Fin 4 → Fin 64 → EReal} {hc hc' : EReal}
    (hw : w = w') (hop : op = op') (hfeat : feat = feat') (hbm : bm = bm') (hhc : hc = hc') :
    emb w Wp op feat bm p1 p2 hc = emb w' Wp op' feat' bm' p1 p2 hc' := by
  subst hw hop hfeat hbm hhc; rfl

theorem embW_entry : Region0.embW (V1 m ρ) c =
    EmbW.ofArrays (m ((c : Thread nD τ).loc main_arg8) : S32x128.Idx → EReal) (m ((c : Thread nD τ).loc main_arg9) : S128.Idx → EReal)
      (m ((c : Thread nD τ).loc main_arg10) : S32x128.Idx → EReal) (m ((c : Thread nD τ).loc main_arg11) : S128.Idx → EReal)
      (m ((c : Thread nD τ).loc main_arg12) : S1000x128.Idx → EReal) (m ((c : Thread nD τ).loc main_arg13) : S128.Idx → EReal)
      (m ((c : Thread nD τ).loc main_arg15) : S128.Idx → EReal) := by
  unfold Region0.embW EmbW.ofTiles EmbW.ofArrays
  refine congr (congr (congr (congr (congr (congr (congrArg EmbW.mk ?_) ?_) ?_) ?_) ?_) ?_) ?_
  · exact congrArg (fun x : S32x128.Idx → EReal => mat x) (entry_arg m ρ c main_arg8 (by decide))
  · funext j; exact Host0.v24_apply m ρ c j
  · exact congrArg (fun x : S32x128.Idx → EReal => mat x) (entry_arg m ρ c main_arg10 (by decide))
  · funext j; exact Host0.v25_apply m ρ c j
  · exact congrArg (fun x : S1000x128.Idx → EReal => mat x) (entry_arg m ρ c main_arg12 (by decide))
  · funext j; exact Host0.v26_apply m ρ c j
  · funext j; exact Host0.v27_apply m ρ c j

theorem table_entry (k : Fin 256) (n : Fin 512) :
    mat (V1 m ρ c (Pipeline.arrRef spec0 12) : S256x512.Idx → EReal) k n =
      if k.val / 64 = n.val / 128 then
        mat (m ((c : Thread nD τ).loc main_arg14) : S64x128.Idx → EReal) ⟨k.val % 64, by omega⟩ ⟨n.val % 128, by omega⟩
      else 0 :=
  Host0.v23_apply m ρ c k n

theorem E_entry : Region0.E (V1 m ρ) c = Em m c := by
  funext i
  unfold Region0.E Em embOfArrays
  refine (embK_eq_emb _ (mat (m ((c : Thread nD τ).loc main_arg14) : S64x128.Idx → EReal)) _ _ _ _
    (ten3 (m ((c : Thread nD τ).loc main_arg3) : S64512x4x64.Idx → EReal) i)
    (ten3 (m ((c : Thread nD τ).loc main_arg4) : S64512x4x64.Idx → EReal) i) _ _ _
    (table_entry m ρ c) (fun k => Host0.v0_apply m ρ c i k) (fun k => Host0.v1_apply m ρ c i k)).trans ?_
  exact emb_congr (embW_entry m ρ c)
    (congrArg (fun x : S64512x32.Idx → EReal => mat x i) (entry_arg m ρ c main_arg0 (by decide)))
    (congrArg (fun x : S64512x32.Idx → EReal => mat x i) (entry_arg m ρ c main_arg1 (by decide)))
    (congrArg (fun x : S64512x1000.Idx → EReal => mat x i) (entry_arg m ρ c main_arg2 (by decide)))
    (Host0.v2_apply m ρ c i)

theorem mlp_entry : Region0.mlp (V1 m ρ) c = pm m c := by
  unfold Region0.mlp pm MLP3.ofTiles MLP3.ofArrays
  refine congr (congr (congr (congr (congr (congrArg MLP3.mk ?_) ?_) ?_) ?_) ?_) ?_
  · exact congrArg (fun x : S1408x512.Idx → EReal => mat x) (entry_arg m ρ c main_arg16 (by decide))
  · funext j; exact Host0.v28_apply m ρ c j
  · exact congrArg (fun x : S512x256.Idx → EReal => mat x) (entry_arg m ρ c main_arg18 (by decide))
  · funext j; exact Host0.v29_apply m ρ c j
  · exact congrArg (fun x : S256x128.Idx → EReal => mat x) (entry_arg m ρ c main_arg20 (by decide))
  · funext j; exact Host0.v30_apply m ρ c j

theorem value_entry : Region0.value (V1 m ρ) c = level5 (Em m c) (pm m c) := by
  unfold Region0.value level5
  rw [E_entry m ρ c, mlp_entry m ρ c]

end Leaves

open Leaves

theorem level5_eq :
    (W2 m ρ c (Proc.devRef .tc main_v31_0) : S32768x128.Idx → EReal) = arr2 (level5 (Em m c) (pm m c)).rep
      ∧ (W2 m ρ c (Proc.devRef .tc main_v31_1) : S32768x128.Idx → EReal) = arr2 (level5 (Em m c) (pm m c)).lrep
      ∧ (W2 m ρ c (Proc.devRef .tc main_v31_2) : S32768x128.Idx → EReal) = arr2 (level5 (Em m c) (pm m c)).rrep := by
  refine ⟨?_, ?_, ?_⟩
  · exact ((W2_arr m ρ c 20).trans (Region0.rep_eq (V1 m ρ) c)).trans
      (congrArg (fun v : Carry 32768 => arr2 v.rep) (value_entry m ρ c))
  · exact ((W2_arr m ρ c 21).trans (Region0.lrep_eq (V1 m ρ) c)).trans
      (congrArg (fun v : Carry 32768 => arr2 v.lrep) (value_entry m ρ c))
  · exact ((W2_arr m ρ c 22).trans (Region0.rrep_eq (V1 m ρ) c)).trans
      (congrArg (fun v : Carry 32768 => arr2 v.rrep) (value_entry m ρ c))

end Cert.KernelIdeal.Chain

end
-- ==== Proof.KBridge.lean ====
import proofs.«410031_j84061099917532_3_alg».proof.Proof.Spec
import proofs.«410031_j84061099917532_3_alg».proof.Proof.SpecPool
import proofs.«410031_j84061099917532_3_alg».proof.Proof.KStable

noncomputable section

open Idealize.ShloMosaic Idealize.ShloMosaic.TcCoe Idealize.SL.Sem
open TreeNN ValueIdx

namespace Cert.KernelIdeal.Chain

open Cert.KernelIdeal Cert.KernelIdeal.Gen

theorem row_eq_vec {b : ℕ} (x : (⟨2, ![1, b]⟩ : Shape).Idx → EReal) (y : (⟨1, ![b]⟩ : Shape).Idx → EReal)
    (h : ∀ j : Fin b, x (ix2 0 j) = y (ix1 j)) : row x = vec y := funext h

theorem col_eq_vec {a : ℕ} (x : (⟨2, ![a, 1]⟩ : Shape).Idx → EReal) (y : (⟨1, ![a]⟩ : Shape).Idx → EReal)
    (h : ∀ i : Fin a, x (ix2 i 0) = y (ix1 i)) : col x = vec y := funext h

theorem mlp_bridge
    (W1K : (⟨2, ![1408, 512]⟩ : Shape).Idx → EReal) (b1K : (⟨2, ![1, 512]⟩ : Shape).Idx → EReal)
    (W2K : (⟨2, ![512, 256]⟩ : Shape).Idx → EReal) (b2K : (⟨2, ![1, 256]⟩ : Shape).Idx → EReal)
    (W3K : (⟨2, ![256, 128]⟩ : Shape).Idx → EReal) (b3K : (⟨2, ![1, 128]⟩ : Shape).Idx → EReal)
    (W1 : (⟨2, ![1408, 512]⟩ : Shape).Idx → EReal) (b1 : (⟨1, ![512]⟩ : Shape).Idx → EReal)
    (W2 : (⟨2, ![512, 256]⟩ : Shape).Idx → EReal) (b2 : (⟨1, ![256]⟩ : Shape).Idx → EReal)
    (W3 : (⟨2, ![256, 128]⟩ : Shape).Idx → EReal) (b3 : (⟨1, ![128]⟩ : Shape).Idx → EReal)
    (hW1 : W1K = W1) (hb1 : ∀ j, b1K (ix2 0 j) = b1 (ix1 j))
    (hW2 : W2K = W2) (hb2 : ∀ j, b2K (ix2 0 j) = b2 (ix1 j))
    (hW3 : W3K = W3) (hb3 : ∀ j, b3K (ix2 0 j) = b3 (ix1 j)) :
    MLP3.ofTiles W1K b1K W2K b2K W3K b3K = MLP3.ofArrays W1 b1 W2 b2 W3 b3 := by
  subst hW1 hW2 hW3
  unfold MLP3.ofTiles MLP3.ofArrays
  rw [row_eq_vec b1K b1 hb1, row_eq_vec b2K b2 hb2, row_eq_vec b3K b3 hb3]

theorem embW_bridge
    (WopK : (⟨2, ![32, 128]⟩ : Shape).Idx → EReal) (bopK : (⟨2, ![1, 128]⟩ : Shape).Idx → EReal)
    (WfeatK : (⟨2, ![32, 128]⟩ : Shape).Idx → EReal) (bfeatK : (⟨2, ![1, 128]⟩ : Shape).Idx → EReal)
    (WbmK : (⟨2, ![1000, 128]⟩ : Shape).Idx → EReal) (bbmK : (⟨2, ![1, 128]⟩ : Shape).Idx → EReal)
    (bpredK : (⟨2, ![1, 128]⟩ : Shape).Idx → EReal)
    (Wop : (⟨2, ![32, 128]⟩ : Shape).Idx → EReal) (bop : (⟨1, ![128]⟩ : Shape).Idx → EReal)
    (Wfeat : (⟨2, ![32, 128]⟩ : Shape).Idx → EReal) (bfeat : (⟨1, ![128]⟩ : Shape).Idx → EReal)
    (Wbm : (⟨2, ![1000, 128]⟩ : Shape).Idx → EReal) (bbm : (⟨1, ![128]⟩ : Shape).Idx → EReal)
    (bpred : (⟨1, ![128]⟩ : Shape).Idx → EReal)
    (hWop : WopK = Wop) (hbop : ∀ j, bopK (ix2 0 j) = bop (ix1 j))
    (hWfeat : WfeatK = Wfeat) (hbfeat : ∀ j, bfeatK (ix2 0 j) = bfeat (ix1 j))
    (hWbm : WbmK = Wbm) (hbbm : ∀ j, bbmK (ix2 0 j) = bbm (ix1 j))
    (hbpred : ∀ j, bpredK (ix2 0 j) = bpred (ix1 j)) :
    EmbW.ofTiles WopK bopK WfeatK bfeatK WbmK bbmK bpredK = EmbW.ofArrays Wop bop Wfeat bfeat Wbm bbm bpred := by
  subst hWop hWfeat hWbm
  unfold EmbW.ofTiles EmbW.ofArrays
  rw [row_eq_vec bopK bop hbop, row_eq_vec bfeatK bfeat hbfeat, row_eq_vec bbmK bbm hbbm, row_eq_vec bpredK bpred hbpred]

/-- Flattened predicates against the block-diagonal table pool like the 4 × 64 predicates against its 64 × 128 block. -/
theorem emb_bridge (w : EmbW)
    (T : (⟨2, ![256, 512]⟩ : Shape).Idx → EReal) (Wpred : (⟨2, ![64, 128]⟩ : Shape).Idx → EReal)
    (opK op featK feat : (⟨2, ![64512, 32]⟩ : Shape).Idx → EReal) (bmK bm : (⟨2, ![64512, 1000]⟩ : Shape).Idx → EReal)
    (pf1 pf2 : (⟨2, ![64512, 256]⟩ : Shape).Idx → EReal) (p1 p2 : (⟨3, ![64512, 4, 64]⟩ : Shape).Idx → EReal)
    (g : (⟨2, ![64512, 1]⟩ : Shape).Idx → EReal) (hc : (⟨1, ![64512]⟩ : Shape).Idx → EReal)
    (hop : opK = op) (hfeat : featK = feat) (hbm : bmK = bm)
    (hT : ∀ (k : Fin 256) (n : Fin 512), T (ix2 k n) =
      if k.val / 64 = n.val / 128 then Wpred (ix2 ⟨k.val % 64, by omega⟩ ⟨n.val % 128, by omega⟩) else (0 : EReal))
    (h1 : ∀ (i : Fin 64512) (k : Fin 256), pf1 (ix2 i k) = p1 (ix3 i ⟨k.val / 64, by have := k.isLt; omega⟩ ⟨k.val % 64, by omega⟩))
    (h2 : ∀ (i : Fin 64512) (k : Fin 256), pf2 (ix2 i k) = p2 (ix3 i ⟨k.val / 64, by have := k.isLt; omega⟩ ⟨k.val % 64, by omega⟩))
    (hg : ∀ i : Fin 64512, g (ix2 i 0) = hc (ix1 i)) (i : Fin 64512) :
    embK w (mat T) (mat opK i) (mat featK i) (mat bmK i) (mat pf1 i) (mat pf2 i) (col g i)
      = emb w (mat Wpred) (mat op i) (mat feat i) (mat bm i) (ten3 p1 i) (ten3 p2 i) (vec hc i) := by
  subst hop hfeat hbm
  rw [show col g i = vec hc i from hg i]
  exact embK_eq_emb w (mat Wpred) (mat T) _ _ _ (ten3 p1 i) (ten3 p2 i) (mat pf1 i) (mat pf2 i) _
    (fun k n => hT k n) (fun k => h1 i k) (fun k => h2 i k)

/-- Row 2 i + s of the level below is child s of node i. -/
theorem kids_bridge {n n2 : ℕ} (h2 : n2 = 2 * n) (x : (⟨3, ![n, 2, 128]⟩ : Shape).Idx → EReal)
    (y : (⟨2, ![n2, 128]⟩ : Shape).Idx → EReal) (f : Fin n2 → Fin 128 → EReal) (hy : y = arr2 f)
    (hx : ∀ (i : Fin n) (s : Fin 2) (j : Fin 128), x (ix3 i s j) = y (ix2 ⟨2 * i.val + s.val, by omega⟩ j)) :
    ten3 x = pair h2 f := by
  subst hy
  funext i s j
  exact hx i s j

theorem fx (i : ℕ) (h : i < Stable.fixed.length) : Stable.fixed[i] ∈ Stable.fixed := List.getElem_mem h

theorem ag (i : ℕ) (h : i < Stable.args.length) : Stable.args[i] ∈ Stable.args := List.getElem_mem h

end Cert.KernelIdeal.Chain

end
-- ==== Proof.KHost1.lean ====
import proofs.«410031_j84061099917532_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host1

open Cert.KernelIdeal Cert.KernelIdeal.Gen Idealize.ShloMosaic Idealize.ShloMosaic.TcCoe Idealize.ShloMosaic.ValueIdx
open Idealize.ShloMosaic.StableHlo

section Contents

variable (V : Valuation τ sig (Elt Ideal))

theorem v32_term : (StableHlo.after (hostOps1 (F := Ideal)) V (Proc.devRef .tc main_v32) : S16384x2x128.Idx → EReal) =
    shapeCast S16384x2x128 (V (Proc.devRef .tc main_v31_0) : S32768x128.Idx → EReal) Facts₀.shapeCasts_S32768x128_S16384x2x128 := by
  after_results; rfl

theorem v32_at (i : Fin 16384) (s : Fin 2) (j : Fin 128) :
    (StableHlo.after (hostOps1 (F := Ideal)) V (Proc.devRef .tc main_v32) : S16384x2x128.Idx → EReal) (ix3 i s j) =
      (V (Proc.devRef .tc main_v31_0) : S32768x128.Idx → EReal) (ix2 ⟨2 * i.val + s.val, by omega⟩ j) := by
  rw [v32_term]
  exact shapeCast_apply (s := S32768x128) (t := S16384x2x128) _ _ _ _ (by
    rw [Shape.rowMajor_val_three, Shape.rowMajor_val_two]
    show (2 * i.val + s.val) * 128 + j.val = (i.val * 2 + s.val) * 128 + j.val
    omega)

theorem v33_term : (StableHlo.after (hostOps1 (F := Ideal)) V (Proc.devRef .tc main_v33) : S16384x2x128.Idx → EReal) =
    shapeCast S16384x2x128 (V (Proc.devRef .tc main_v31_1) : S32768x128.Idx → EReal) Facts₀.shapeCasts_S32768x128_S16384x2x128 := by
  after_results; rfl

theorem v33_at (i : Fin 16384) (s : Fin 2) (j : Fin 128) :
    (StableHlo.after (hostOps1 (F := Ideal)) V (Proc.devRef .tc main_v33) : S16384x2x128.Idx → EReal) (ix3 i s j) =
      (V (Proc.devRef .tc main_v31_1) : S32768x128.Idx → EReal) (ix2 ⟨2 * i.val + s.val, by omega⟩ j) := by
  rw [v33_term]
  exact shapeCast_apply (s := S32768x128) (t := S16384x2x128) _ _ _ _ (by
    rw [Shape.rowMajor_val_three, Shape.rowMajor_val_two]
    show (2 * i.val + s.val) * 128 + j.val = (i.val * 2 + s.val) * 128 + j.val
    omega)

theorem v34_term : (StableHlo.after (hostOps1 (F := Ideal)) V (Proc.devRef .tc main_v34) : S16384x2x128.Idx → EReal) =
    shapeCast S16384x2x128 (V (Proc.devRef .tc main_v31_2) : S32768x128.Idx → EReal) Facts₀.shapeCasts_S32768x128_S16384x2x128 := by
  after_results; rfl

theorem v34_at (i : Fin 16384) (s : Fin 2) (j : Fin 128) :
    (StableHlo.after (hostOps1 (F := Ideal)) V (Proc.devRef .tc main_v34) : S16384x2x128.Idx → EReal) (ix3 i s j) =
      (V (Proc.devRef .tc main_v31_2) : S32768x128.Idx → EReal) (ix2 ⟨2 * i.val + s.val, by omega⟩ j) := by
  rw [v34_term]
  exact shapeCast_apply (s := S32768x128) (t := S16384x2x128) _ _ _ _ (by
    rw [Shape.rowMajor_val_three, Shape.rowMajor_val_two]
    show (2 * i.val + s.val) * 128 + j.val = (i.val * 2 + s.val) * 128 + j.val
    omega)

theorem v35_term : (StableHlo.after (hostOps1 (F := Ideal)) V (Proc.devRef .tc main_v35) : S1x128.Idx → EReal) =
    shapeCast S1x128 (V (Proc.devRef .tc main_arg9) : S128.Idx → EReal) Facts₀.shapeCasts_S128_S1x128 := by
  after_results; rfl

theorem v35_at (j : Fin 128) :
    (StableHlo.after (hostOps1 (F := Ideal)) V (Proc.devRef .tc main_v35) : S1x128.Idx → EReal) (ix2 0 j) =
      (V (Proc.devRef .tc main_arg9) : S128.Idx → EReal) (ix1 j) := by
  rw [v35_term]
  exact shapeCast_a_1a_apply (a := 128) _ _ 0 j

theorem v36_term : (StableHlo.after (hostOps1 (F := Ideal)) V (Proc.devRef .tc main_v36) : S1x128.Idx → EReal) =
    shapeCast S1x128 (V (Proc.devRef .tc main_arg11) : S128.Idx → EReal) Facts₀.shapeCasts_S128_S1x128 := by
  after_results; rfl

theorem v36_at (j : Fin 128) :
    (StableHlo.after (hostOps1 (F := Ideal)) V (Proc.devRef .tc main_v36) : S1x128.Idx → EReal) (ix2 0 j) =
      (V (Proc.devRef .tc main_arg11) : S128.Idx → EReal) (ix1 j) := by
  rw [v36_term]
  exact shapeCast_a_1a_apply (a := 128) _ _ 0 j

theorem v37_term : (StableHlo.after (hostOps1 (F := Ideal)) V (Proc.devRef .tc main_v37) : S1x128.Idx → EReal) =
    shapeCast S1x128 (V (Proc.devRef .tc main_arg13) : S128.Idx → EReal) Facts₀.shapeCasts_S128_S1x128 := by
  after_results; rfl

theorem v37_at (j : Fin 128) :
    (StableHlo.after (hostOps1 (F := Ideal)) V (Proc.devRef .tc main_v37) : S1x128.Idx → EReal) (ix2 0 j) =
      (V (Proc.devRef .tc main_arg13) : S128.Idx → EReal) (ix1 j) := by
  rw [v37_term]
  exact shapeCast_a_1a_apply (a := 128) _ _ 0 j

theorem v38_term : (StableHlo.after (hostOps1 (F := Ideal)) V (Proc.devRef .tc main_v38) : S1x128.Idx → EReal) =
    shapeCast S1x128 (V (Proc.devRef .tc main_arg15) : S128.Idx → EReal) Facts₀.shapeCasts_S128_S1x128 := by
  after_results; rfl

theorem v38_at (j : Fin 128) :
    (StableHlo.after (hostOps1 (F := Ideal)) V (Proc.devRef .tc main_v38) : S1x128.Idx → EReal) (ix2 0 j) =
      (V (Proc.devRef .tc main_arg15) : S128.Idx → EReal) (ix1 j) := by
  rw [v38_term]
  exact shapeCast_a_1a_apply (a := 128) _ _ 0 j

theorem v39_term : (StableHlo.after (hostOps1 (F := Ideal)) V (Proc.devRef .tc main_v39) : S1x512.Idx → EReal) =
    shapeCast S1x512 (V (Proc.devRef .tc main_arg17) : S512.Idx → EReal) Facts₀.shapeCasts_S512_S1x512 := by
  after_results; rfl

theorem v39_at (j : Fin 512) :
    (StableHlo.after (hostOps1 (F := Ideal)) V (Proc.devRef .tc main_v39) : S1x512.Idx → EReal) (ix2 0 j) =
      (V (Proc.devRef .tc main_arg17) : S512.Idx → EReal) (ix1 j) := by
  rw [v39_term]
  exact shapeCast_a_1a_apply (a := 512) _ _ 0 j

theorem v40_term : (StableHlo.after (hostOps1 (F := Ideal)) V (Proc.devRef .tc main_v40) : S1x256.Idx → EReal) =
    shapeCast S1x256 (V (Proc.devRef .tc main_arg19) : S256.Idx → EReal) Facts₀.shapeCasts_S256_S1x256 := by
  after_results; rfl

theorem v40_at (j : Fin 256) :
    (StableHlo.after (hostOps1 (F := Ideal)) V (Proc.devRef .tc main_v40) : S1x256.Idx → EReal) (ix2 0 j) =
      (V (Proc.devRef .tc main_arg19) : S256.Idx → EReal) (ix1 j) := by
  rw [v40_term]
  exact shapeCast_a_1a_apply (a := 256) _ _ 0 j

theorem v41_term : (StableHlo.after (hostOps1 (F := Ideal)) V (Proc.devRef .tc main_v41) : S1x128.Idx → EReal) =
    shapeCast S1x128 (V (Proc.devRef .tc main_arg21) : S128.Idx → EReal) Facts₀.shapeCasts_S128_S1x128 := by
  after_results; rfl

theorem v41_at (j : Fin 128) :
    (StableHlo.after (hostOps1 (F := Ideal)) V (Proc.devRef .tc main_v41) : S1x128.Idx → EReal) (ix2 0 j) =
      (V (Proc.devRef .tc main_arg21) : S128.Idx → EReal) (ix1 j) := by
  rw [v41_term]
  exact shapeCast_a_1a_apply (a := 128) _ _ 0 j

end Contents

variable (m : (ℓ : Loc nD τ sig) → Buf (Elt Ideal) ℓ) (ρ : Dev nD → PrngReg) (c : Dev nD)

theorem v32_apply (i : Fin 16384) (s : Fin 2) (j : Fin 128) :
    (W3 m ρ c (Proc.devRef .tc main_v32) : S16384x2x128.Idx → EReal) (ix3 i s j) =
      (W2 m ρ c (Proc.devRef .tc main_v31_0) : S32768x128.Idx → EReal) (ix2 ⟨2 * i.val + s.val, by omega⟩ j) :=
  v32_at (W2 m ρ c) i s j

theorem v33_apply (i : Fin 16384) (s : Fin 2) (j : Fin 128) :
    (W3 m ρ c (Proc.devRef .tc main_v33) : S16384x2x128.Idx → EReal) (ix3 i s j) =
      (W2 m ρ c (Proc.devRef .tc main_v31_1) : S32768x128.Idx → EReal) (ix2 ⟨2 * i.val + s.val, by omega⟩ j) :=
  v33_at (W2 m ρ c) i s j

theorem v34_apply (i : Fin 16384) (s : Fin 2) (j : Fin 128) :
    (W3 m ρ c (Proc.devRef .tc main_v34) : S16384x2x128.Idx → EReal) (ix3 i s j) =
      (W2 m ρ c (Proc.devRef .tc main_v31_2) : S32768x128.Idx → EReal) (ix2 ⟨2 * i.val + s.val, by omega⟩ j) :=
  v34_at (W2 m ρ c) i s j

theorem v35_apply (j : Fin 128) :
    (W3 m ρ c (Proc.devRef .tc main_v35) : S1x128.Idx → EReal) (ix2 0 j) =
      (W2 m ρ c (Proc.devRef .tc main_arg9) : S128.Idx → EReal) (ix1 j) :=
  v35_at (W2 m ρ c) j

theorem v36_apply (j : Fin 128) :
    (W3 m ρ c (Proc.devRef .tc main_v36) : S1x128.Idx → EReal) (ix2 0 j) =
      (W2 m ρ c (Proc.devRef .tc main_arg11) : S128.Idx → EReal) (ix1 j) :=
  v36_at (W2 m ρ c) j

theorem v37_apply (j : Fin 128) :
    (W3 m ρ c (Proc.devRef .tc main_v37) : S1x128.Idx → EReal) (ix2 0 j) =
      (W2 m ρ c (Proc.devRef .tc main_arg13) : S128.Idx → EReal) (ix1 j) :=
  v37_at (W2 m ρ c) j

theorem v38_apply (j : Fin 128) :
    (W3 m ρ c (Proc.devRef .tc main_v38) : S1x128.Idx → EReal) (ix2 0 j) =
      (W2 m ρ c (Proc.devRef .tc main_arg15) : S128.Idx → EReal) (ix1 j) :=
  v38_at (W2 m ρ c) j

theorem v39_apply (j : Fin 512) :
    (W3 m ρ c (Proc.devRef .tc main_v39) : S1x512.Idx → EReal) (ix2 0 j) =
      (W2 m ρ c (Proc.devRef .tc main_arg17) : S512.Idx → EReal) (ix1 j) :=
  v39_at (W2 m ρ c) j

theorem v40_apply (j : Fin 256) :
    (W3 m ρ c (Proc.devRef .tc main_v40) : S1x256.Idx → EReal) (ix2 0 j) =
      (W2 m ρ c (Proc.devRef .tc main_arg19) : S256.Idx → EReal) (ix1 j) :=
  v40_at (W2 m ρ c) j

theorem v41_apply (j : Fin 128) :
    (W3 m ρ c (Proc.devRef .tc main_v41) : S1x128.Idx → EReal) (ix2 0 j) =
      (W2 m ρ c (Proc.devRef .tc main_arg21) : S128.Idx → EReal) (ix1 j) :=
  v41_at (W2 m ρ c) j

end Cert.KernelIdeal.Host1
-- ==== Proof.R1TileEmb.lean ====
import proofs.«410031_j84061099917532_3_alg».proof.Proof.Gen.KernelIdeal.Skeleton
import proofs.«410031_j84061099917532_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open TreeNN ValueIdx

namespace Cert.KernelIdeal.Region1

open Cert.KernelIdeal Cert.KernelIdeal.Gen

theorem lhs32_0 (j : S1024x128.Idx) (k : dot_S1024x32_S32x128_S1024x128_1_0_0_1_n_n.contr.Idx) :
    (dot_S1024x32_S32x128_S1024x128_1_0_0_1_n_n.lhsIdx j k 0 : ℕ) = j 0 := by
  simp [DotDims.lhsIdx, dot_S1024x32_S32x128_S1024x128_1_0_0_1_n_n]; rfl
theorem lhs32_1 (j : S1024x128.Idx) (k : dot_S1024x32_S32x128_S1024x128_1_0_0_1_n_n.contr.Idx) :
    (dot_S1024x32_S32x128_S1024x128_1_0_0_1_n_n.lhsIdx j k 1 : ℕ) = k ⟨0, by decide⟩ := by
  simp [DotDims.lhsIdx, dot_S1024x32_S32x128_S1024x128_1_0_0_1_n_n]; rfl
theorem rhs32_0 (j : S1024x128.Idx) (k : dot_S1024x32_S32x128_S1024x128_1_0_0_1_n_n.contr.Idx) :
    (dot_S1024x32_S32x128_S1024x128_1_0_0_1_n_n.rhsIdx j k 0 : ℕ) = k ⟨0, by decide⟩ := by
  simp [DotDims.rhsIdx, dot_S1024x32_S32x128_S1024x128_1_0_0_1_n_n]; rfl
theorem rhs32_1 (j : S1024x128.Idx) (k : dot_S1024x32_S32x128_S1024x128_1_0_0_1_n_n.contr.Idx) :
    (dot_S1024x32_S32x128_S1024x128_1_0_0_1_n_n.rhsIdx j k 1 : ℕ) = j 1 := by
  simp [DotDims.rhsIdx, dot_S1024x32_S32x128_S1024x128_1_0_0_1_n_n]; rfl

theorem lhs1000_0 (j : S1024x128.Idx) (k : dot_S1024x1000_S1000x128_S1024x128_1_0_0_1_n_n.contr.Idx) :
    (dot_S1024x1000_S1000x128_S1024x128_1_0_0_1_n_n.lhsIdx j k 0 : ℕ) = j 0 := by
  simp [DotDims.lhsIdx, dot_S1024x1000_S1000x128_S1024x128_1_0_0_1_n_n]; rfl
theorem lhs1000_1 (j : S1024x128.Idx) (k : dot_S1024x1000_S1000x128_S1024x128_1_0_0_1_n_n.contr.Idx) :
    (dot_S1024x1000_S1000x128_S1024x128_1_0_0_1_n_n.lhsIdx j k 1 : ℕ) = k ⟨0, by decide⟩ := by
  simp [DotDims.lhsIdx, dot_S1024x1000_S1000x128_S1024x128_1_0_0_1_n_n]; rfl
theorem rhs1000_0 (j : S1024x128.Idx) (k : dot_S1024x1000_S1000x128_S1024x128_1_0_0_1_n_n.contr.Idx) :
    (dot_S1024x1000_S1000x128_S1024x128_1_0_0_1_n_n.rhsIdx j k 0 : ℕ) = k ⟨0, by decide⟩ := by
  simp [DotDims.rhsIdx, dot_S1024x1000_S1000x128_S1024x128_1_0_0_1_n_n]; rfl
theorem rhs1000_1 (j : S1024x128.Idx) (k : dot_S1024x1000_S1000x128_S1024x128_1_0_0_1_n_n.contr.Idx) :
    (dot_S1024x1000_S1000x128_S1024x128_1_0_0_1_n_n.rhsIdx j k 1 : ℕ) = j 1 := by
  simp [DotDims.rhsIdx, dot_S1024x1000_S1000x128_S1024x128_1_0_0_1_n_n]; rfl

theorem lhs256_0 (j : S1024x512.Idx) (k : dot_S1024x256_S256x512_S1024x512_1_0_0_1_n_n.contr.Idx) :
    (dot_S1024x256_S256x512_S1024x512_1_0_0_1_n_n.lhsIdx j k 0 : ℕ) = j 0 := by
  simp [DotDims.lhsIdx, dot_S1024x256_S256x512_S1024x512_1_0_0_1_n_n]; rfl
theorem lhs256_1 (j : S1024x512.Idx) (k : dot_S1024x256_S256x512_S1024x512_1_0_0_1_n_n.contr.Idx) :
    (dot_S1024x256_S256x512_S1024x512_1_0_0_1_n_n.lhsIdx j k 1 : ℕ) = k ⟨0, by decide⟩ := by
  simp [DotDims.lhsIdx, dot_S1024x256_S256x512_S1024x512_1_0_0_1_n_n]; rfl
theorem rhs256_0 (j : S1024x512.Idx) (k : dot_S1024x256_S256x512_S1024x512_1_0_0_1_n_n.contr.Idx) :
    (dot_S1024x256_S256x512_S1024x512_1_0_0_1_n_n.rhsIdx j k 0 : ℕ) = k ⟨0, by decide⟩ := by
  simp [DotDims.rhsIdx, dot_S1024x256_S256x512_S1024x512_1_0_0_1_n_n]; rfl
theorem rhs256_1 (j : S1024x512.Idx) (k : dot_S1024x256_S256x512_S1024x512_1_0_0_1_n_n.contr.Idx) :
    (dot_S1024x256_S256x512_S1024x512_1_0_0_1_n_n.rhsIdx j k 1 : ℕ) = j 1 := by
  simp [DotDims.rhsIdx, dot_S1024x256_S256x512_S1024x512_1_0_0_1_n_n]; rfl

theorem mm32_apply (x : FVec Ideal S1024x32 .bf16) (W : FVec Ideal S32x128 .bf16) (r : Fin 1024) (j : Fin 128) :
    matmul dot_S1024x32_S32x128_S1024x128_1_0_0_1_n_n none x W (constant (F := Ideal) S1024x128 .f32 0x00000000#32) (ix2 r j)
      = ∑ k : Fin 32, x (ix2 r k) * W (ix2 k j) := by
  refine (Ideal.matmul_constant_zero_apply _ none x W (ix2 r j)).trans ?_
  rw [← Equiv.sum_comp (contrEquiv1 dot_S1024x32_S32x128_S1024x128_1_0_0_1_n_n 32 rfl rfl).symm]
  refine Finset.sum_congr rfl fun k _ => ?_
  have hk := contrEquiv1_symm_val dot_S1024x32_S32x128_S1024x128_1_0_0_1_n_n 32 rfl rfl k
  congr 2
  · funext a
    match a with
    | ⟨0, _⟩ => exact Fin.ext (lhs32_0 _ _)
    | ⟨1, _⟩ => exact Fin.ext ((lhs32_1 _ _).trans hk)
  · funext a
    match a with
    | ⟨0, _⟩ => exact Fin.ext ((rhs32_0 _ _).trans hk)
    | ⟨1, _⟩ => exact Fin.ext (rhs32_1 _ _)

theorem mm1000_apply (x : FVec Ideal S1024x1000 .bf16) (W : FVec Ideal S1000x128 .bf16) (r : Fin 1024) (j : Fin 128) :
    matmul dot_S1024x1000_S1000x128_S1024x128_1_0_0_1_n_n none x W (constant (F := Ideal) S1024x128 .f32 0x00000000#32) (ix2 r j)
      = ∑ k : Fin 1000, x (ix2 r k) * W (ix2 k j) := by
  refine (Ideal.matmul_constant_zero_apply _ none x W (ix2 r j)).trans ?_
  rw [← Equiv.sum_comp (contrEquiv1 dot_S1024x1000_S1000x128_S1024x128_1_0_0_1_n_n 1000 rfl rfl).symm]
  refine Finset.sum_congr rfl fun k _ => ?_
  have hk := contrEquiv1_symm_val dot_S1024x1000_S1000x128_S1024x128_1_0_0_1_n_n 1000 rfl rfl k
  congr 2
  · funext a
    match a with
    | ⟨0, _⟩ => exact Fin.ext (lhs1000_0 _ _)
    | ⟨1, _⟩ => exact Fin.ext ((lhs1000_1 _ _).trans hk)
  · funext a
    match a with
    | ⟨0, _⟩ => exact Fin.ext ((rhs1000_0 _ _).trans hk)
    | ⟨1, _⟩ => exact Fin.ext (rhs1000_1 _ _)

theorem mm256_apply (x : FVec Ideal S1024x256 .bf16) (W : FVec Ideal S256x512 .bf16) (r : Fin 1024) (j : Fin 512) :
    matmul dot_S1024x256_S256x512_S1024x512_1_0_0_1_n_n none x W (constant (F := Ideal) S1024x512 .f32 0x00000000#32) (ix2 r j)
      = ∑ k : Fin 256, x (ix2 r k) * W (ix2 k j) := by
  refine (Ideal.matmul_constant_zero_apply _ none x W (ix2 r j)).trans ?_
  rw [← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  congr 2
  · funext a
    match a with
    | ⟨0, _⟩ => exact Fin.ext (lhs256_0 _ _)
    | ⟨1, _⟩ => exact Fin.ext ((lhs256_1 _ _).trans hk)
  · funext a
    match a with
    | ⟨0, _⟩ => exact Fin.ext ((rhs256_0 _ _).trans hk)
    | ⟨1, _⟩ => exact Fin.ext (rhs256_1 _ _)

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem pay2_apply (v0 : Vec Ideal S1024x32 .f32) (v2 : Vec Ideal S32x128 .f32) (v5 : Vec Ideal S1x128 .f32)
    (r : Fin 1024) (j : Fin 128) :
    k1_pay2 (F := Ideal) v0 v2 v5 (ix2 r j) = dense (mat v0 r) (mat v2) (row v5) j := by
  unfold k1_pay2
  rw [addf_apply, mm32_apply, shapeCast_self, broadcastTo_1b_ab_apply]
  rfl

theorem pay3_apply (v9 : Vec Ideal S1024x32 .f32) (v11 : Vec Ideal S32x128 .f32) (v14 : Vec Ideal S1x128 .f32)
    (r : Fin 1024) (j : Fin 128) :
    k1_pay3 (F := Ideal) v9 v11 v14 (ix2 r j) = dense (mat v9 r) (mat v11) (row v14) j := by
  unfold k1_pay3
  rw [addf_apply, mm32_apply, shapeCast_self, broadcastTo_1b_ab_apply]
  rfl

theorem pay4_apply (v18 : Vec Ideal S1024x1000 .f32) (v20 : Vec Ideal S1000x128 .f32) (v23 : Vec Ideal S1x128 .f32)
    (v27 : Vec Ideal S1024x1 .f32) (r : Fin 1024) (j : Fin 128) :
    k1_pay4 (F := Ideal) v18 v20 v23 v27 (ix2 r j) = dense (mat v18 r) (mat v20) (row v23) j * col v27 r := by
  unfold k1_pay4
  rw [mulf_apply, addf_apply, mm1000_apply, shapeCast_self, broadcastTo_1b_ab_apply, shapeCast_self, broadcastTo_a1_ab_apply]
  rfl

theorem pay5_apply (v31 : Vec Ideal S256x512 .f32) (i : S256x512.Idx) : k1_pay5 (F := Ideal) v31 i = v31 i := by
  unfold k1_pay5
  rw [truncf_apply, shapeCast_self]

theorem pay6_apply (v33 : FVec Ideal S256x512 .bf16) (v34 : Vec Ideal S1024x256 .f32) (v45 : Vec Ideal S1x128 .f32)
    (r : Fin 1024) (j : Fin 128) :
    k1_pay6 (F := Ideal) v33 v34 v45 (ix2 r j) = poolK (mat v34 r) (mat v33) (row v45) j := by
  unfold k1_pay6
  rw [addf_apply, minimumf_apply, minimumf_apply, minimumf_apply, shapeCast_self, broadcastTo_1b_ab_apply, shapeCast_self,
    slice2_axis1_apply 0 _ _ r j (⟨128 * 0 + j.val, by omega⟩ : Fin 512) (by simp),
    slice2_axis1_apply 128 _ _ r j (⟨128 * 1 + j.val, by omega⟩ : Fin 512) (by simp),
    slice2_axis1_apply 256 _ _ r j (⟨128 * 2 + j.val, by omega⟩ : Fin 512) (by simp),
    slice2_axis1_apply 384 _ _ r j (⟨128 * 3 + j.val, by omega⟩ : Fin 512) (by simp),
    mm256_apply, mm256_apply, mm256_apply, mm256_apply]
  rfl

theorem pay7_apply (v33 : FVec Ideal S256x512 .bf16) (v49 : Vec Ideal S1024x256 .f32) (v60 : Vec Ideal S1x128 .f32)
    (r : Fin 1024) (j : Fin 128) :
    k1_pay7 (F := Ideal) v33 v49 v60 (ix2 r j) = poolK (mat v49 r) (mat v33) (row v60) j := by
  unfold k1_pay7
  rw [addf_apply, minimumf_apply, minimumf_apply, minimumf_apply, shapeCast_self, broadcastTo_1b_ab_apply, shapeCast_self,
    slice2_axis1_apply 0 _ _ r j (⟨128 * 0 + j.val, by omega⟩ : Fin 512) (by simp),
    slice2_axis1_apply 128 _ _ r j (⟨128 * 1 + j.val, by omega⟩ : Fin 512) (by simp),
    slice2_axis1_apply 256 _ _ r j (⟨128 * 2 + j.val, by omega⟩ : Fin 512) (by simp),
    slice2_axis1_apply 384 _ _ r j (⟨128 * 3 + j.val, by omega⟩ : Fin 512) (by simp),
    mm256_apply, mm256_apply, mm256_apply, mm256_apply]
  rfl

theorem pay8_apply (v64 : Vec Ideal S1024x1 .f32) (i : S1024x1.Idx) : k1_pay8 (F := Ideal) v64 i = v64 i := by
  unfold k1_pay8; rw [shapeCast_self]
theorem pay9_apply (v66 : Vec Ideal S1024x1 .f32) (i : S1024x1.Idx) : k1_pay9 (F := Ideal) v66 i = v66 i := by
  unfold k1_pay9; rw [shapeCast_self]
theorem pay10_apply (v68 : Vec Ideal S1024x2x128 .f32) (i : S1024x2x128.Idx) : k1_pay10 (F := Ideal) v68 i = v68 i := by
  unfold k1_pay10; rw [shapeCast_self]
theorem pay11_apply (v70 : Vec Ideal S1024x2x128 .f32) (i : S1024x2x128.Idx) : k1_pay11 (F := Ideal) v70 i = v70 i := by
  unfold k1_pay11; rw [shapeCast_self]

end Cert.KernelIdeal.Region1

end
-- ==== Proof.R1TileMlp.lean ====
import proofs.«410031_j84061099917532_3_alg».proof.Proof.Gen.KernelIdeal.Skeleton
import proofs.«410031_j84061099917532_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open TreeNN ValueIdx

namespace Cert.KernelIdeal.Region1

open Cert.KernelIdeal Cert.KernelIdeal.Gen

namespace Mlp

theorem cast_a1b_ab_apply (x : FVec Ideal S1024x1x128 .f32) (r : Fin 1024) (j : Fin 128) :
    shapeCast S1024x128 x shapeCasts_S1024x1x128_S1024x128 (ix2 r j) = x (ix3 r (0 : Fin 1) j) :=
  shapeCast_apply x _ _ _ (by
    rw [Shape.rowMajor_val_three, Shape.rowMajor_val_two]
    show (r.val * 1 + 0) * 128 + j.val = r.val * 128 + j.val
    omega)

theorem bcast_col_apply (v : FVec Ideal S1024x1 .f32) (r : Fin 1024) (j : Fin 128) :
    broadcastTo S1024x128 v broadcasts_S1024x1_S1024x128 (ix2 r j) = v (ix2 r (0 : Fin 1)) := by
  refine broadcastTo_apply v _ (ix2 r j) (ix2 r (0 : Fin 1)) fun ax => ?_
  match ax with
  | ⟨0, _⟩ => rfl
  | ⟨1, _⟩ => rfl

theorem child0_apply (x : FVec Ideal S1024x2x128 .f32) (r : Fin 1024) (j : Fin 128) :
    shapeCast S1024x128 (extractStridedSlice S1024x1x128 ![0, 0, 0] x slices_S1024x2x128_o0_0_0_S1024x1x128)
      shapeCasts_S1024x1x128_S1024x128 (ix2 r j) = x (ix3 r (0 : Fin 2) j) :=
  (cast_a1b_ab_apply _ r j).trans
    (slice3_axis1_apply 0 x slices_S1024x2x128_o0_0_0_S1024x1x128 r (0 : Fin 1) j (0 : Fin 2) rfl)

theorem child1_apply (x : FVec Ideal S1024x2x128 .f32) (r : Fin 1024) (j : Fin 128) :
    shapeCast S1024x128 (extractStridedSlice S1024x1x128 ![0, 1, 0] x slices_S1024x2x128_o0_1_0_S1024x1x128)
      shapeCasts_S1024x1x128_S1024x128 (ix2 r j) = x (ix3 r (1 : Fin 2) j) :=
  (cast_a1b_ab_apply _ r j).trans
    (slice3_axis1_apply 1 x slices_S1024x2x128_o0_1_0_S1024x1x128 r (0 : Fin 1) j (1 : Fin 2) rfl)

theorem masked0_apply (x : FVec Ideal S1024x2x128 .f32) (m : FVec Ideal S1024x1 .f32) (r : Fin 1024) (j : Fin 128) :
    mulf (shapeCast S1024x128 (extractStridedSlice S1024x1x128 ![0, 0, 0] x slices_S1024x2x128_o0_0_0_S1024x1x128)
        shapeCasts_S1024x1x128_S1024x128) (broadcastTo S1024x128 m broadcasts_S1024x1_S1024x128) (ix2 r j)
      = ten3 x r 0 j * col m r := by
  show _ * _ = _
  rw [child0_apply, bcast_col_apply]
  rfl

theorem masked1_apply (x : FVec Ideal S1024x2x128 .f32) (m : FVec Ideal S1024x1 .f32) (r : Fin 1024) (j : Fin 128) :
    mulf (shapeCast S1024x128 (extractStridedSlice S1024x1x128 ![0, 1, 0] x slices_S1024x2x128_o0_1_0_S1024x1x128)
        shapeCasts_S1024x1x128_S1024x128) (broadcastTo S1024x128 m broadcasts_S1024x1_S1024x128) (ix2 r j)
      = ten3 x r 1 j * col m r := by
  show _ * _ = _
  rw [child1_apply, bcast_col_apply]
  rfl

theorem lhs512_0 (j : S1024x256.Idx) (k : dot_S1024x512_S512x256_S1024x256_1_0_0_1_n_n.contr.Idx) :
    (dot_S1024x512_S512x256_S1024x256_1_0_0_1_n_n.lhsIdx j k 0 : ℕ) = j 0 := by
  simp [DotDims.lhsIdx, dot_S1024x512_S512x256_S1024x256_1_0_0_1_n_n]; rfl
theorem lhs512_1 (j : S1024x256.Idx) (k : dot_S1024x512_S512x256_S1024x256_1_0_0_1_n_n.contr.Idx) :
    (dot_S1024x512_S512x256_S1024x256_1_0_0_1_n_n.lhsIdx j k 1 : ℕ) = k ⟨0, by decide⟩ := by
  simp [DotDims.lhsIdx, dot_S1024x512_S512x256_S1024x256_1_0_0_1_n_n]; rfl
theorem rhs512_0 (j : S1024x256.Idx) (k : dot_S1024x512_S512x256_S1024x256_1_0_0_1_n_n.contr.Idx) :
    (dot_S1024x512_S512x256_S1024x256_1_0_0_1_n_n.rhsIdx j k 0 : ℕ) = k ⟨0, by decide⟩ := by
  simp [DotDims.rhsIdx, dot_S1024x512_S512x256_S1024x256_1_0_0_1_n_n]; rfl
theorem rhs512_1 (j : S1024x256.Idx) (k : dot_S1024x512_S512x256_S1024x256_1_0_0_1_n_n.contr.Idx) :
    (dot_S1024x512_S512x256_S1024x256_1_0_0_1_n_n.rhsIdx j k 1 : ℕ) = j 1 := by
  simp [DotDims.rhsIdx, dot_S1024x512_S512x256_S1024x256_1_0_0_1_n_n]; rfl

theorem mm512_apply {φ₁ φ₂ : FTy} (x : FVec Ideal S1024x512 φ₁) (W : FVec Ideal S512x256 φ₂) (r : Fin 1024) (c : Fin 256) :
    matmul dot_S1024x512_S512x256_S1024x256_1_0_0_1_n_n none x W (constant (F := Ideal) S1024x256 .f32 0x00000000#32) (ix2 r c)
      = ∑ k : Fin 512, x (ix2 r k) * W (ix2 k c) := by
  refine (Ideal.matmul_constant_zero_apply _ none x W (ix2 r c)).trans ?_
  rw [← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  congr 2
  · funext a
    match a with
    | ⟨0, _⟩ => exact Fin.ext (lhs512_0 _ _)
    | ⟨1, _⟩ => exact Fin.ext ((lhs512_1 _ _).trans hk)
  · funext a
    match a with
    | ⟨0, _⟩ => exact Fin.ext ((rhs512_0 _ _).trans hk)
    | ⟨1, _⟩ => exact Fin.ext (rhs512_1 _ _)

theorem lhs256_0 (j : S1024x128.Idx) (k : dot_S1024x256_S256x128_S1024x128_1_0_0_1_n_n.contr.Idx) :
    (dot_S1024x256_S256x128_S1024x128_1_0_0_1_n_n.lhsIdx j k 0 : ℕ) = j 0 := by
  simp [DotDims.lhsIdx, dot_S1024x256_S256x128_S1024x128_1_0_0_1_n_n]; rfl
theorem lhs256_1 (j : S1024x128.Idx) (k : dot_S1024x256_S256x128_S1024x128_1_0_0_1_n_n.contr.Idx) :
    (dot_S1024x256_S256x128_S1024x128_1_0_0_1_n_n.lhsIdx j k 1 : ℕ) = k ⟨0, by decide⟩ := by
  simp [DotDims.lhsIdx, dot_S1024x256_S256x128_S1024x128_1_0_0_1_n_n]; rfl
theorem rhs256_0 (j : S1024x128.Idx) (k : dot_S1024x256_S256x128_S1024x128_1_0_0_1_n_n.contr.Idx) :
    (dot_S1024x256_S256x128_S1024x128_1_0_0_1_n_n.rhsIdx j k 0 : ℕ) = k ⟨0, by decide⟩ := by
  simp [DotDims.rhsIdx, dot_S1024x256_S256x128_S1024x128_1_0_0_1_n_n]; rfl
theorem rhs256_1 (j : S1024x128.Idx) (k : dot_S1024x256_S256x128_S1024x128_1_0_0_1_n_n.contr.Idx) :
    (dot_S1024x256_S256x128_S1024x128_1_0_0_1_n_n.rhsIdx j k 1 : ℕ) = j 1 := by
  simp [DotDims.rhsIdx, dot_S1024x256_S256x128_S1024x128_1_0_0_1_n_n]; rfl

theorem mm256_apply {φ₁ φ₂ : FTy} (x : FVec Ideal S1024x256 φ₁) (W : FVec Ideal S256x128 φ₂) (r : Fin 1024) (c : Fin 128) :
    matmul dot_S1024x256_S256x128_S1024x128_1_0_0_1_n_n none x W (constant (F := Ideal) S1024x128 .f32 0x00000000#32) (ix2 r c)
      = ∑ k : Fin 256, x (ix2 r k) * W (ix2 k c) := by
  refine (Ideal.matmul_constant_zero_apply _ none x W (ix2 r c)).trans ?_
  rw [← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  congr 2
  · funext a
    match a with
    | ⟨0, _⟩ => exact Fin.ext (lhs256_0 _ _)
    | ⟨1, _⟩ => exact Fin.ext ((lhs256_1 _ _).trans hk)
  · funext a
    match a with
    | ⟨0, _⟩ => exact Fin.ext ((rhs256_0 _ _).trans hk)
    | ⟨1, _⟩ => exact Fin.ext (rhs256_1 _ _)

theorem lhs1408_0 (j : S1024x512.Idx) (k : dot_S1024x1408_S1408x512_S1024x512_1_0_0_1_n_n.contr.Idx) :
    (dot_S1024x1408_S1408x512_S1024x512_1_0_0_1_n_n.lhsIdx j k 0 : ℕ) = j 0 := by
  simp [DotDims.lhsIdx, dot_S1024x1408_S1408x512_S1024x512_1_0_0_1_n_n]; rfl
theorem lhs1408_1 (j : S1024x512.Idx) (k : dot_S1024x1408_S1408x512_S1024x512_1_0_0_1_n_n.contr.Idx) :
    (dot_S1024x1408_S1408x512_S1024x512_1_0_0_1_n_n.lhsIdx j k 1 : ℕ) = k ⟨0, by decide⟩ := by
  simp [DotDims.lhsIdx, dot_S1024x1408_S1408x512_S1024x512_1_0_0_1_n_n]; rfl
theorem rhs1408_0 (j : S1024x512.Idx) (k : dot_S1024x1408_S1408x512_S1024x512_1_0_0_1_n_n.contr.Idx) :
    (dot_S1024x1408_S1408x512_S1024x512_1_0_0_1_n_n.rhsIdx j k 0 : ℕ) = k ⟨0, by decide⟩ := by
  simp [DotDims.rhsIdx, dot_S1024x1408_S1408x512_S1024x512_1_0_0_1_n_n]; rfl
theorem rhs1408_1 (j : S1024x512.Idx) (k : dot_S1024x1408_S1408x512_S1024x512_1_0_0_1_n_n.contr.Idx) :
    (dot_S1024x1408_S1408x512_S1024x512_1_0_0_1_n_n.rhsIdx j k 1 : ℕ) = j 1 := by
  simp [DotDims.rhsIdx, dot_S1024x1408_S1408x512_S1024x512_1_0_0_1_n_n]; rfl

theorem mm1408_apply {φ₁ φ₂ : FTy} (x : FVec Ideal S1024x1408 φ₁) (W : FVec Ideal S1408x512 φ₂) (r : Fin 1024) (c : Fin 512) :
    matmul dot_S1024x1408_S1408x512_S1024x512_1_0_0_1_n_n none x W (constant (F := Ideal) S1024x512 .f32 0x00000000#32) (ix2 r c)
      = ∑ k : Fin 1408, x (ix2 r k) * W (ix2 k c) := by
  refine (Ideal.matmul_constant_zero_apply _ none x W (ix2 r c)).trans ?_
  rw [← Equiv.sum_comp (contrEquiv1 dot_S1024x1408_S1408x512_S1024x512_1_0_0_1_n_n 1408 rfl rfl).symm]
  refine Finset.sum_congr rfl fun k _ => ?_
  have hk := contrEquiv1_symm_val dot_S1024x1408_S1408x512_S1024x512_1_0_0_1_n_n 1408 rfl rfl k
  congr 2
  · funext a
    match a with
    | ⟨0, _⟩ => exact Fin.ext (lhs1408_0 _ _)
    | ⟨1, _⟩ => exact Fin.ext ((lhs1408_1 _ _).trans hk)
  · funext a
    match a with
    | ⟨0, _⟩ => exact Fin.ext ((rhs1408_0 _ _).trans hk)
    | ⟨1, _⟩ => exact Fin.ext (rhs1408_1 _ _)

theorem concat11_apply (p0 p1 p2 p3 p4 p5 p6 p7 p8 p9 p10 : FVec Ideal S1024x128 .bf16) (r : Fin 1024) (k : Fin 1408) :
    concatenate S1024x1408 1 [⟨S1024x128, p0⟩, ⟨S1024x128, p1⟩, ⟨S1024x128, p2⟩, ⟨S1024x128, p3⟩, ⟨S1024x128, p4⟩, ⟨S1024x128, p5⟩, ⟨S1024x128, p6⟩, ⟨S1024x128, p7⟩, ⟨S1024x128, p8⟩, ⟨S1024x128, p9⟩, ⟨S1024x128, p10⟩]
        concatenates_S1024x128_S1024x128_S1024x128_S1024x128_S1024x128_S1024x128_S1024x128_S1024x128_S1024x128_S1024x128_S1024x128_S1024x1408_d1 (ix2 r k)
      = (![p0, p1, p2, p3, p4, p5, p6, p7, p8, p9, p10] : Fin 11 → FVec Ideal S1024x128 .bf16) ⟨k.val / 128, by omega⟩ (ix2 r ⟨k.val % 128, by omega⟩) :=
  concatenate_ofFn_apply (t := S1024x1408) (s₁ := S1024x128) 1
    (![p0, p1, p2, p3, p4, p5, p6, p7, p8, p9, p10] : Fin 11 → FVec Ideal S1024x128 .bf16) concatenates_S1024x128_S1024x128_S1024x128_S1024x128_S1024x128_S1024x128_S1024x128_S1024x128_S1024x128_S1024x128_S1024x128_S1024x1408_d1 rfl 128 rfl (ix2 r k) ⟨k.val / 128, by omega⟩ rfl
    (ix2 r ⟨k.val % 128, by omega⟩) rfl (fun b hb => by
      match b with
      | ⟨0, _⟩ => rfl
      | ⟨1, _⟩ => exact absurd rfl hb)

end Mlp

open Mlp

theorem pay12_apply (v65 : FVec Ideal S1024x1 .f32) (v69 : FVec Ideal S1024x2x128 .f32) (r : Fin 1024) (j : Fin 128) :
    k1_pay12 (F := Ideal) v65 v69 (ix2 r j) = ten3 v69 r 0 j * col v65 r := by
  unfold k1_pay12
  exact masked0_apply v69 v65 r j

theorem pay13_apply (v67 : FVec Ideal S1024x1 .f32) (v69 : FVec Ideal S1024x2x128 .f32) (r : Fin 1024) (j : Fin 128) :
    k1_pay13 (F := Ideal) v67 v69 (ix2 r j) = ten3 v69 r 1 j * col v67 r := by
  unfold k1_pay13
  exact masked1_apply v69 v67 r j

namespace Mlp

def tiles (v8 v17 v30 v48 v63 : FVec Ideal S1024x128 .f32) (v65 v67 : FVec Ideal S1024x1 .f32)
    (v69 v71 : FVec Ideal S1024x2x128 .f32) (v72 : Vec Ideal S1024x2x128 .f32) : Fin 11 → FVec Ideal S1024x128 .bf16 :=
  ![truncf .bf16 v8 bitsLt_bf16_f32,
    truncf .bf16 v17 bitsLt_bf16_f32,
    truncf .bf16 v48 bitsLt_bf16_f32,
    truncf .bf16 v63 bitsLt_bf16_f32,
    truncf .bf16 v30 bitsLt_bf16_f32,
    truncf .bf16 (k1_pay12 v65 v69) bitsLt_bf16_f32,
    truncf .bf16 (k1_pay13 v67 v69) bitsLt_bf16_f32,
    truncf .bf16 (mulf (shapeCast S1024x128 (extractStridedSlice S1024x1x128 ![0, 0, 0] v71 slices_S1024x2x128_o0_0_0_S1024x1x128) shapeCasts_S1024x1x128_S1024x128) (broadcastTo S1024x128 v65 broadcasts_S1024x1_S1024x128)) bitsLt_bf16_f32,
    truncf .bf16 (mulf (shapeCast S1024x128 (extractStridedSlice S1024x1x128 ![0, 0, 0] (shapeCast S1024x2x128 v72 shapeCasts_S1024x2x128_S1024x2x128) slices_S1024x2x128_o0_0_0_S1024x1x128) shapeCasts_S1024x1x128_S1024x128) (broadcastTo S1024x128 v65 broadcasts_S1024x1_S1024x128)) bitsLt_bf16_f32,
    truncf .bf16 (mulf (shapeCast S1024x128 (extractStridedSlice S1024x1x128 ![0, 1, 0] v71 slices_S1024x2x128_o0_1_0_S1024x1x128) shapeCasts_S1024x1x128_S1024x128) (broadcastTo S1024x128 v67 broadcasts_S1024x1_S1024x128)) bitsLt_bf16_f32,
    truncf .bf16 (mulf (shapeCast S1024x128 (extractStridedSlice S1024x1x128 ![0, 1, 0] (shapeCast S1024x2x128 v72 shapeCasts_S1024x2x128_S1024x2x128) slices_S1024x2x128_o0_1_0_S1024x1x128) shapeCasts_S1024x1x128_S1024x128) (broadcastTo S1024x128 v67 broadcasts_S1024x1_S1024x128)) bitsLt_bf16_f32]

theorem tiles_apply (v8 v17 v30 v48 v63 : FVec Ideal S1024x128 .f32) (v65 v67 : FVec Ideal S1024x1 .f32)
    (v69 v71 : FVec Ideal S1024x2x128 .f32) (v72 : Vec Ideal S1024x2x128 .f32) (r : Fin 1024) (q : Fin 11) (j : Fin 128) :
    tiles v8 v17 v30 v48 v63 v65 v67 v69 v71 v72 q (ix2 r j) = pieces ![mat v8 r, mat v17 r, mat v48 r, mat v63 r, mat v30 r]
          (childPieces (col v65 r) (col v67 r) (ten3 v69 r) (ten3 v71 r) (ten3 v72 r)) q j := by
  match q with
  | ⟨0, _⟩ => rfl
  | ⟨1, _⟩ => rfl
  | ⟨2, _⟩ => rfl
  | ⟨3, _⟩ => rfl
  | ⟨4, _⟩ => rfl
  | ⟨5, _⟩ => exact pay12_apply v65 v69 r j
  | ⟨6, _⟩ => exact pay13_apply v67 v69 r j
  | ⟨7, _⟩ => exact masked0_apply v71 v65 r j
  | ⟨8, _⟩ => exact (masked0_apply (shapeCast S1024x2x128 v72 shapeCasts_S1024x2x128_S1024x2x128) v65 r j).trans (by rw [shapeCast_self v72]; rfl)
  | ⟨9, _⟩ => exact masked1_apply v71 v67 r j
  | ⟨10, _⟩ => exact (masked1_apply (shapeCast S1024x2x128 v72 shapeCasts_S1024x2x128_S1024x2x128) v67 r j).trans (by rw [shapeCast_self v72]; rfl)

theorem cat_apply (v8 v17 v30 v48 v63 : FVec Ideal S1024x128 .f32) (v65 v67 : FVec Ideal S1024x1 .f32)
    (v69 v71 : FVec Ideal S1024x2x128 .f32) (v72 : Vec Ideal S1024x2x128 .f32) (r : Fin 1024) (k : Fin 1408) :
    concatenate S1024x1408 1 [⟨S1024x128, truncf .bf16 v8 bitsLt_bf16_f32⟩,
        ⟨S1024x128, truncf .bf16 v17 bitsLt_bf16_f32⟩,
        ⟨S1024x128, truncf .bf16 v48 bitsLt_bf16_f32⟩,
        ⟨S1024x128, truncf .bf16 v63 bitsLt_bf16_f32⟩,
        ⟨S1024x128, truncf .bf16 v30 bitsLt_bf16_f32⟩,
        ⟨S1024x128, truncf .bf16 (k1_pay12 v65 v69) bitsLt_bf16_f32⟩,
        ⟨S1024x128, truncf .bf16 (k1_pay13 v67 v69) bitsLt_bf16_f32⟩,
        ⟨S1024x128, truncf .bf16 (mulf (shapeCast S1024x128 (extractStridedSlice S1024x1x128 ![0, 0, 0] v71 slices_S1024x2x128_o0_0_0_S1024x1x128) shapeCasts_S1024x1x128_S1024x128) (broadcastTo S1024x128 v65 broadcasts_S1024x1_S1024x128)) bitsLt_bf16_f32⟩,
        ⟨S1024x128, truncf .bf16 (mulf (shapeCast S1024x128 (extractStridedSlice S1024x1x128 ![0, 0, 0] (shapeCast S1024x2x128 v72 shapeCasts_S1024x2x128_S1024x2x128) slices_S1024x2x128_o0_0_0_S1024x1x128) shapeCasts_S1024x1x128_S1024x128) (broadcastTo S1024x128 v65 broadcasts_S1024x1_S1024x128)) bitsLt_bf16_f32⟩,
        ⟨S1024x128, truncf .bf16 (mulf (shapeCast S1024x128 (extractStridedSlice S1024x1x128 ![0, 1, 0] v71 slices_S1024x2x128_o0_1_0_S1024x1x128) shapeCasts_S1024x1x128_S1024x128) (broadcastTo S1024x128 v67 broadcasts_S1024x1_S1024x128)) bitsLt_bf16_f32⟩,
        ⟨S1024x128, truncf .bf16 (mulf (shapeCast S1024x128 (extractStridedSlice S1024x1x128 ![0, 1, 0] (shapeCast S1024x2x128 v72 shapeCasts_S1024x2x128_S1024x2x128) slices_S1024x2x128_o0_1_0_S1024x1x128) shapeCasts_S1024x1x128_S1024x128) (broadcastTo S1024x128 v67 broadcasts_S1024x1_S1024x128)) bitsLt_bf16_f32⟩]
        concatenates_S1024x128_S1024x128_S1024x128_S1024x128_S1024x128_S1024x128_S1024x128_S1024x128_S1024x128_S1024x128_S1024x128_S1024x1408_d1 (ix2 r k)
      = cat11 (pieces ![mat v8 r, mat v17 r, mat v48 r, mat v63 r, mat v30 r]
          (childPieces (col v65 r) (col v67 r) (ten3 v69 r) (ten3 v71 r) (ten3 v72 r))) k :=
  (concat11_apply _ _ _ _ _ _ _ _ _ _ _ r k).trans
    (tiles_apply v8 v17 v30 v48 v63 v65 v67 v69 v71 v72 r ⟨k.val / 128, by omega⟩ ⟨k.val % 128, by omega⟩)

end Mlp

theorem pay14_apply (v8 v17 v30 v48 v63 : FVec Ideal S1024x128 .f32) (v65 v67 : FVec Ideal S1024x1 .f32)
    (v69 v71 : FVec Ideal S1024x2x128 .f32) (v72 : Vec Ideal S1024x2x128 .f32) (v110 : Vec Ideal S1408x512 .f32)
    (v113 : Vec Ideal S1x512 .f32) (r : Fin 1024) (j : Fin 512) :
    k1_pay14 (F := Ideal) v8 v17 v30 v48 v63 v65 v67 v69 v71 v72 v110 v113 (ix2 r j)
      = relu (dense (cat11 (pieces ![mat v8 r, mat v17 r, mat v48 r, mat v63 r, mat v30 r]
          (childPieces (col v65 r) (col v67 r) (ten3 v69 r) (ten3 v71 r) (ten3 v72 r)))) (mat v110) (row v113)) j := by
  unfold k1_pay14
  show max (_ + _) (Ideal.ofBits .f32 0x00000000#32) = _
  rw [mm1408_apply, broadcastTo_1b_ab_apply, shapeCast_self v113, Ideal.ofBits_zero_f32]
  refine congrArg (fun s => max (s + v113 (ix2 0 j)) 0) (Finset.sum_congr rfl fun k _ => ?_)
  exact congrArg (· * v110 (ix2 k j)) (cat_apply v8 v17 v30 v48 v63 v65 v67 v69 v71 v72 r k)

theorem pay15_apply (v120 : Vec Ideal S512x256 .f32) (i : S512x256.Idx) : k1_pay15 (F := Ideal) v120 i = v120 i := rfl

namespace Mlp

theorem layer2_apply (v119 : FVec Ideal S1024x512 .bf16) (v121 : FVec Ideal S512x256 .bf16) (v123 : Vec Ideal S1x256 .f32)
    (r : Fin 1024) (k : Fin 256) :
    maximumf (addf (matmul dot_S1024x512_S512x256_S1024x256_1_0_0_1_n_n none v119 v121 (constant (F := Ideal) S1024x256 .f32 0x00000000#32))
        (broadcastTo S1024x256 (shapeCast S1x256 v123 shapeCasts_S1x256_S1x256) broadcasts_S1x256_S1024x256))
      (broadcast S1024x256 (Scalar.ofBits .f32 0x00000000#32)) (ix2 r k)
      = relu (dense (mat v119 r) (mat v121) (row v123)) k := by
  show max (_ + _) (Ideal.ofBits .f32 0x00000000#32) = _
  rw [mm512_apply, broadcastTo_1b_ab_apply, shapeCast_self v123, Ideal.ofBits_zero_f32]
  rfl

end Mlp

theorem pay1_apply (v119 : FVec Ideal S1024x512 .bf16) (v121 : FVec Ideal S512x256 .bf16) (v123 : Vec Ideal S1x256 .f32)
    (v130 : Vec Ideal S256x128 .f32) (v133 : Vec Ideal S1x128 .f32) (r : Fin 1024) (j : Fin 128) :
    k1_pay1 (F := Ideal) v119 v121 (constant S1024x256 .f32 0x00000000#32) v123 v130 v133 (ix2 r j)
      = relu (dense (relu (dense (mat v119 r) (mat v121) (row v123))) (mat v130) (row v133)) j := by
  unfold k1_pay1
  show max (_ + _) (Ideal.ofBits .f32 0x00000000#32) = _
  rw [mm256_apply, broadcastTo_1b_ab_apply, shapeCast_self v133, Ideal.ofBits_zero_f32]
  refine congrArg (fun s => max (s + v133 (ix2 0 j)) 0) (Finset.sum_congr rfl fun k _ => ?_)
  exact congrArg (· * v130 (ix2 k j)) (layer2_apply v119 v121 v123 r k)

end Cert.KernelIdeal.Region1

end
-- ==== Proof.R1Tile.lean ====
import proofs.«410031_j84061099917532_3_alg».proof.Proof.Gen.KernelIdeal.Frame
import proofs.«410031_j84061099917532_3_alg».proof.Proof.R1TileEmb
import proofs.«410031_j84061099917532_3_alg».proof.Proof.R1TileMlp
import Idealize.ShloMosaic.Lib.Pipeline.Value
import Idealize.ShloMosaic.Lib.ValueIdx
import Mathlib.Tactic.FinCases

noncomputable section

open Idealize.ShloMosaic Idealize.ShloMosaic.TcCoe Idealize.SL.Sem
open TreeNN ValueIdx

namespace Cert.KernelIdeal.Region1

open Cert.KernelIdeal Cert.KernelIdeal.Gen

theorem zeroOff2 : (![0, 0] : Fin 2 → Nat) = fun _ => 0 := funext fun a => by fin_cases a <;> rfl
theorem zeroOff3 : (![0, 0, 0] : Fin 3 → Nat) = fun _ => 0 := funext fun a => by fin_cases a <;> rfl

theorem row_pay2 (v0 : Vec Ideal S1024x32 .f32) (v2 : Vec Ideal S32x128 .f32) (v5 : Vec Ideal S1x128 .f32) (r : Fin 1024) :
    mat (k1_pay2 (F := Ideal) v0 v2 v5) r = dense (mat v0 r) (mat v2) (row v5) :=
  funext fun j => pay2_apply v0 v2 v5 r j

theorem row_pay3 (v9 : Vec Ideal S1024x32 .f32) (v11 : Vec Ideal S32x128 .f32) (v14 : Vec Ideal S1x128 .f32) (r : Fin 1024) :
    mat (k1_pay3 (F := Ideal) v9 v11 v14) r = dense (mat v9 r) (mat v11) (row v14) :=
  funext fun j => pay3_apply v9 v11 v14 r j

theorem row_pay4 (v18 : Vec Ideal S1024x1000 .f32) (v20 : Vec Ideal S1000x128 .f32) (v23 : Vec Ideal S1x128 .f32)
    (v27 : Vec Ideal S1024x1 .f32) (r : Fin 1024) :
    mat (k1_pay4 (F := Ideal) v18 v20 v23 v27) r = fun h => dense (mat v18 r) (mat v20) (row v23) h * col v27 r :=
  funext fun j => pay4_apply v18 v20 v23 v27 r j

theorem mat_pay5 (v31 : Vec Ideal S256x512 .f32) : mat (k1_pay5 (F := Ideal) v31) = mat v31 :=
  funext fun a => funext fun b => pay5_apply v31 (ix2 a b)

theorem row_pay6 (v33 : FVec Ideal S256x512 .bf16) (v34 : Vec Ideal S1024x256 .f32) (v45 : Vec Ideal S1x128 .f32) (r : Fin 1024) :
    mat (k1_pay6 (F := Ideal) v33 v34 v45) r = poolK (mat v34 r) (mat v33) (row v45) :=
  funext fun j => pay6_apply v33 v34 v45 r j

theorem row_pay7 (v33 : FVec Ideal S256x512 .bf16) (v49 : Vec Ideal S1024x256 .f32) (v60 : Vec Ideal S1x128 .f32) (r : Fin 1024) :
    mat (k1_pay7 (F := Ideal) v33 v49 v60) r = poolK (mat v49 r) (mat v33) (row v60) :=
  funext fun j => pay7_apply v33 v49 v60 r j

theorem col_pay8 (v64 : Vec Ideal S1024x1 .f32) (r : Fin 1024) : col (k1_pay8 (F := Ideal) v64) r = col v64 r :=
  pay8_apply v64 (ix2 r 0)

theorem col_pay9 (v66 : Vec Ideal S1024x1 .f32) (r : Fin 1024) : col (k1_pay9 (F := Ideal) v66) r = col v66 r :=
  pay9_apply v66 (ix2 r 0)

theorem ten_pay10 (v68 : Vec Ideal S1024x2x128 .f32) (r : Fin 1024) : ten3 (k1_pay10 (F := Ideal) v68) r = ten3 v68 r :=
  funext fun s => funext fun q => pay10_apply v68 (ix3 r s q)

theorem ten_pay11 (v70 : Vec Ideal S1024x2x128 .f32) (r : Fin 1024) : ten3 (k1_pay11 (F := Ideal) v70) r = ten3 v70 r :=
  funext fun s => funext fun q => pay11_apply v70 (ix3 r s q)

theorem row_pay14 (v8 v17 v30 v48 v63 : FVec Ideal S1024x128 .f32) (v65 v67 : FVec Ideal S1024x1 .f32)
    (v69 v71 : FVec Ideal S1024x2x128 .f32) (v72 : Vec Ideal S1024x2x128 .f32) (v110 : Vec Ideal S1408x512 .f32)
    (v113 : Vec Ideal S1x512 .f32) (r : Fin 1024) :
    mat (k1_pay14 (F := Ideal) v8 v17 v30 v48 v63 v65 v67 v69 v71 v72 v110 v113) r
      = relu (dense (cat11 (pieces ![mat v8 r, mat v17 r, mat v48 r, mat v63 r, mat v30 r]
          (childPieces (col v65 r) (col v67 r) (ten3 v69 r) (ten3 v71 r) (ten3 v72 r)))) (mat v110) (row v113)) :=
  funext fun j => pay14_apply v8 v17 v30 v48 v63 v65 v67 v69 v71 v72 v110 v113 r j

theorem mat_pay15 (v120 : Vec Ideal S512x256 .f32) : mat (k1_pay15 (F := Ideal) v120) = mat v120 :=
  funext fun a => funext fun b => pay15_apply v120 (ix2 a b)

/-- Row r of the representation tile is the node update of row r of the operand tiles; regions 2 to 5 launch the same body. -/
theorem out25_apply (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32) (r : Fin 1024) (j : Fin 128) :
    out1_25 (F := Ideal) x0 x1 x2 x3 x4 x5 x6 x7 x8 x9 x10 x11 x12 x13 x14 x15 x16 x17 x18 x19 x20 x21 x22 x23 x24 (ix2 r j)
      = nodeRep (MLP3.ofTiles x19 x20 x21 x22 x23 x24)
          (embK (EmbW.ofTiles x11 x12 x13 x14 x15 x16 x18) (mat x17) (mat x0 r) (mat x1 r) (mat x2 r) (mat x3 r) (mat x4 r) (col x5 r))
          (col x6 r) (col x7 r) (ten3 x8 r) (ten3 x9 r) (ten3 x10 r) j := by
  unfold out1_25
  rw [View.canon_unit_zero zeroOff2]
  simp only [View.ld_unit_zero (S := S1024x32) zeroOff2, View.ld_unit_zero (S := S32x128) zeroOff2, View.ld_unit_zero (S := S1x128) zeroOff2,
    View.ld_unit_zero (S := S1024x1000) zeroOff2, View.ld_unit_zero (S := S1000x128) zeroOff2, View.ld_unit_zero (S := S1024x1) zeroOff2,
    View.ld_unit_zero (S := S256x512) zeroOff2, View.ld_unit_zero (S := S1024x256) zeroOff2, View.ld_unit_zero (S := S1024x2x128) zeroOff3,
    View.ld_unit_zero (S := S1408x512) zeroOff2, View.ld_unit_zero (S := S1x512) zeroOff2, View.ld_unit_zero (S := S512x256) zeroOff2,
    View.ld_unit_zero (S := S1x256) zeroOff2, View.ld_unit_zero (S := S256x128) zeroOff2]
  rw [pay1_apply, mat_pay15, row_pay14, row_pay2, row_pay3, row_pay4, row_pay6, row_pay7, mat_pay5, col_pay8, col_pay9,
    ten_pay10, ten_pay11]
  rfl

theorem out26_apply (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32) (r : Fin 1024) (j : Fin 128) :
    out1_26 (F := Ideal) x0 x1 x2 x3 x4 x5 x6 x7 x8 x9 x10 x11 x12 x13 x14 x15 x16 x17 x18 x19 x20 x21 x22 x23 x24 (ix2 r j) = ten3 x8 r 0 j * col x6 r := by
  unfold out1_26
  rw [View.canon_unit_zero zeroOff2]
  simp only [View.ld_unit_zero (S := S1024x1) zeroOff2, View.ld_unit_zero (S := S1024x2x128) zeroOff3]
  rw [pay12_apply, col_pay8, ten_pay10]

theorem out27_apply (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32) (r : Fin 1024) (j : Fin 128) :
    out1_27 (F := Ideal) x0 x1 x2 x3 x4 x5 x6 x7 x8 x9 x10 x11 x12 x13 x14 x15 x16 x17 x18 x19 x20 x21 x22 x23 x24 (ix2 r j) = ten3 x8 r 1 j * col x7 r := by
  unfold out1_27
  rw [View.canon_unit_zero zeroOff2]
  simp only [View.ld_unit_zero (S := S1024x1) zeroOff2, View.ld_unit_zero (S := S1024x2x128) zeroOff3]
  rw [pay13_apply, col_pay9, ten_pay10]

end Cert.KernelIdeal.Region1

end
-- ==== Proof.R1Out.lean ====
import proofs.«410031_j84061099917532_3_alg».proof.Proof.Gen.KernelIdeal.Frame
import proofs.«410031_j84061099917532_3_alg».proof.Proof.R1Tile
import Idealize.ShloMosaic.Lib.Pipeline.Value
import Idealize.ShloMosaic.Lib.ValueIdx

noncomputable section

open Idealize.ShloMosaic Idealize.ShloMosaic.TcCoe Idealize.SL.Sem
open TreeNN ValueIdx

namespace Cert.KernelIdeal.Region1

open Cert.KernelIdeal Cert.KernelIdeal.Gen

theorem blockIdx0 : ∀ t : Fin cfg1.N, win1_0.index t (0 : Fin 2) = 15 + t.val ∧ win1_0.index t (1 : Fin 2) = 0 :=
  (by decide +kernel : ∀ t : Fin grid1.N, _)
theorem blockIdx1 : ∀ t : Fin cfg1.N, win1_1.index t (0 : Fin 2) = 15 + t.val ∧ win1_1.index t (1 : Fin 2) = 0 :=
  (by decide +kernel : ∀ t : Fin grid1.N, _)
theorem blockIdx2 : ∀ t : Fin cfg1.N, win1_2.index t (0 : Fin 2) = 15 + t.val ∧ win1_2.index t (1 : Fin 2) = 0 :=
  (by decide +kernel : ∀ t : Fin grid1.N, _)
theorem blockIdx3 : ∀ t : Fin cfg1.N, win1_3.index t (0 : Fin 2) = 15 + t.val ∧ win1_3.index t (1 : Fin 2) = 0 :=
  (by decide +kernel : ∀ t : Fin grid1.N, _)
theorem blockIdx4 : ∀ t : Fin cfg1.N, win1_4.index t (0 : Fin 2) = 15 + t.val ∧ win1_4.index t (1 : Fin 2) = 0 :=
  (by decide +kernel : ∀ t : Fin grid1.N, _)
theorem blockIdx5 : ∀ t : Fin cfg1.N, win1_5.index t (0 : Fin 2) = 15 + t.val ∧ win1_5.index t (1 : Fin 2) = 0 :=
  (by decide +kernel : ∀ t : Fin grid1.N, _)
theorem blockIdx6 : ∀ t : Fin cfg1.N, win1_6.index t (0 : Fin 2) = 15 + t.val ∧ win1_6.index t (1 : Fin 2) = 0 :=
  (by decide +kernel : ∀ t : Fin grid1.N, _)
theorem blockIdx7 : ∀ t : Fin cfg1.N, win1_7.index t (0 : Fin 2) = 15 + t.val ∧ win1_7.index t (1 : Fin 2) = 0 :=
  (by decide +kernel : ∀ t : Fin grid1.N, _)
theorem blockIdx8 : ∀ t : Fin cfg1.N, win1_8.index t (0 : Fin 3) = t.val ∧ win1_8.index t (1 : Fin 3) = 0 ∧ win1_8.index t (2 : Fin 3) = 0 :=
  (by decide +kernel : ∀ t : Fin grid1.N, _)
theorem blockIdx9 : ∀ t : Fin cfg1.N, win1_9.index t (0 : Fin 3) = t.val ∧ win1_9.index t (1 : Fin 3) = 0 ∧ win1_9.index t (2 : Fin 3) = 0 :=
  (by decide +kernel : ∀ t : Fin grid1.N, _)
theorem blockIdx10 : ∀ t : Fin cfg1.N, win1_10.index t (0 : Fin 3) = t.val ∧ win1_10.index t (1 : Fin 3) = 0 ∧ win1_10.index t (2 : Fin 3) = 0 :=
  (by decide +kernel : ∀ t : Fin grid1.N, _)
theorem blockIdx11 : ∀ t : Fin cfg1.N, win1_11.index t (0 : Fin 2) = 0 ∧ win1_11.index t (1 : Fin 2) = 0 :=
  (by decide +kernel : ∀ t : Fin grid1.N, _)
theorem blockIdx12 : ∀ t : Fin cfg1.N, win1_12.index t (0 : Fin 2) = 0 ∧ win1_12.index t (1 : Fin 2) = 0 :=
  (by decide +kernel : ∀ t : Fin grid1.N, _)
theorem blockIdx13 : ∀ t : Fin cfg1.N, win1_13.index t (0 : Fin 2) = 0 ∧ win1_13.index t (1 : Fin 2) = 0 :=
  (by decide +kernel : ∀ t : Fin grid1.N, _)
theorem blockIdx14 : ∀ t : Fin cfg1.N, win1_14.index t (0 : Fin 2) = 0 ∧ win1_14.index t (1 : Fin 2) = 0 :=
  (by decide +kernel : ∀ t : Fin grid1.N, _)
theorem blockIdx15 : ∀ t : Fin cfg1.N, win1_15.index t (0 : Fin 2) = 0 ∧ win1_15.index t (1 : Fin 2) = 0 :=
  (by decide +kernel : ∀ t : Fin grid1.N, _)
theorem blockIdx16 : ∀ t : Fin cfg1.N, win1_16.index t (0 : Fin 2) = 0 ∧ win1_16.index t (1 : Fin 2) = 0 :=
  (by decide +kernel : ∀ t : Fin grid1.N, _)
theorem blockIdx17 : ∀ t : Fin cfg1.N, win1_17.index t (0 : Fin 2) = 0 ∧ win1_17.index t (1 : Fin 2) = 0 :=
  (by decide +kernel : ∀ t : Fin grid1.N, _)
theorem blockIdx18 : ∀ t : Fin cfg1.N, win1_18.index t (0 : Fin 2) = 0 ∧ win1_18.index t (1 : Fin 2) = 0 :=
  (by decide +kernel : ∀ t : Fin grid1.N, _)
theorem blockIdx19 : ∀ t : Fin cfg1.N, win1_19.index t (0 : Fin 2) = 0 ∧ win1_19.index t (1 : Fin 2) = 0 :=
  (by decide +kernel : ∀ t : Fin grid1.N, _)
theorem blockIdx20 : ∀ t : Fin cfg1.N, win1_20.index t (0 : Fin 2) = 0 ∧ win1_20.index t (1 : Fin 2) = 0 :=
  (by decide +kernel : ∀ t : Fin grid1.N, _)
theorem blockIdx21 : ∀ t : Fin cfg1.N, win1_21.index t (0 : Fin 2) = 0 ∧ win1_21.index t (1 : Fin 2) = 0 :=
  (by decide +kernel : ∀ t : Fin grid1.N, _)
theorem blockIdx22 : ∀ t : Fin cfg1.N, win1_22.index t (0 : Fin 2) = 0 ∧ win1_22.index t (1 : Fin 2) = 0 :=
  (by decide +kernel : ∀ t : Fin grid1.N, _)
theorem blockIdx23 : ∀ t : Fin cfg1.N, win1_23.index t (0 : Fin 2) = 0 ∧ win1_23.index t (1 : Fin 2) = 0 :=
  (by decide +kernel : ∀ t : Fin grid1.N, _)
theorem blockIdx24 : ∀ t : Fin cfg1.N, win1_24.index t (0 : Fin 2) = 0 ∧ win1_24.index t (1 : Fin 2) = 0 :=
  (by decide +kernel : ∀ t : Fin grid1.N, _)
theorem blockIdx25 : ∀ t : Fin cfg1.N, win1_25.index t (0 : Fin 2) = t.val ∧ win1_25.index t (1 : Fin 2) = 0 :=
  (by decide +kernel : ∀ t : Fin grid1.N, _)
theorem blockIdx26 : ∀ t : Fin cfg1.N, win1_26.index t (0 : Fin 2) = t.val ∧ win1_26.index t (1 : Fin 2) = 0 :=
  (by decide +kernel : ∀ t : Fin grid1.N, _)
theorem blockIdx27 : ∀ t : Fin cfg1.N, win1_27.index t (0 : Fin 2) = t.val ∧ win1_27.index t (1 : Fin 2) = 0 :=
  (by decide +kernel : ∀ t : Fin grid1.N, _)

theorem block0_apply (A : S64512x32.Idx → EReal) (t : Fin cfg1.N) (r : Fin 1024) (q : Fin 32) (k : Fin 64512)
    (hk : k.val = 1024 * (15 + t.val) + r.val) :
    ((cfg1.win 0).blk t).view.read (Elt Ideal) A (ix2 r q) = A (ix2 k q) := by
  rw [View.read_apply]
  show A _ = A _
  congr 1
  funext a
  apply Fin.ext
  match a with
  | ⟨0, _⟩ => show win1_0.index t (0 : Fin 2) * 1024 + 1 * r.val = k.val; rw [(blockIdx0 t).1, hk]; omega
  | ⟨1, _⟩ => show win1_0.index t (1 : Fin 2) * 32 + 1 * q.val = q.val; rw [(blockIdx0 t).2]; omega

theorem block1_apply (A : S64512x32.Idx → EReal) (t : Fin cfg1.N) (r : Fin 1024) (q : Fin 32) (k : Fin 64512)
    (hk : k.val = 1024 * (15 + t.val) + r.val) :
    ((cfg1.win 1).blk t).view.read (Elt Ideal) A (ix2 r q) = A (ix2 k q) := by
  rw [View.read_apply]
  show A _ = A _
  congr 1
  funext a
  apply Fin.ext
  match a with
  | ⟨0, _⟩ => show win1_1.index t (0 : Fin 2) * 1024 + 1 * r.val = k.val; rw [(blockIdx1 t).1, hk]; omega
  | ⟨1, _⟩ => show win1_1.index t (1 : Fin 2) * 32 + 1 * q.val = q.val; rw [(blockIdx1 t).2]; omega

theorem block2_apply (A : S64512x1000.Idx → EReal) (t : Fin cfg1.N) (r : Fin 1024) (q : Fin 1000) (k : Fin 64512)
    (hk : k.val = 1024 * (15 + t.val) + r.val) :
    ((cfg1.win 2).blk t).view.read (Elt Ideal) A (ix2 r q) = A (ix2 k q) := by
  rw [View.read_apply]
  show A _ = A _
  congr 1
  funext a
  apply Fin.ext
  match a with
  | ⟨0, _⟩ => show win1_2.index t (0 : Fin 2) * 1024 + 1 * r.val = k.val; rw [(blockIdx2 t).1, hk]; omega
  | ⟨1, _⟩ => show win1_2.index t (1 : Fin 2) * 1000 + 1 * q.val = q.val; rw [(blockIdx2 t).2]; omega

theorem block3_apply (A : S64512x256.Idx → EReal) (t : Fin cfg1.N) (r : Fin 1024) (q : Fin 256) (k : Fin 64512)
    (hk : k.val = 1024 * (15 + t.val) + r.val) :
    ((cfg1.win 3).blk t).view.read (Elt Ideal) A (ix2 r q) = A (ix2 k q) := by
  rw [View.read_apply]
  show A _ = A _
  congr 1
  funext a
  apply Fin.ext
  match a with
  | ⟨0, _⟩ => show win1_3.index t (0 : Fin 2) * 1024 + 1 * r.val = k.val; rw [(blockIdx3 t).1, hk]; omega
  | ⟨1, _⟩ => show win1_3.index t (1 : Fin 2) * 256 + 1 * q.val = q.val; rw [(blockIdx3 t).2]; omega

theorem block4_apply (A : S64512x256.Idx → EReal) (t : Fin cfg1.N) (r : Fin 1024) (q : Fin 256) (k : Fin 64512)
    (hk : k.val = 1024 * (15 + t.val) + r.val) :
    ((cfg1.win 4).blk t).view.read (Elt Ideal) A (ix2 r q) = A (ix2 k q) := by
  rw [View.read_apply]
  show A _ = A _
  congr 1
  funext a
  apply Fin.ext
  match a with
  | ⟨0, _⟩ => show win1_4.index t (0 : Fin 2) * 1024 + 1 * r.val = k.val; rw [(blockIdx4 t).1, hk]; omega
  | ⟨1, _⟩ => show win1_4.index t (1 : Fin 2) * 256 + 1 * q.val = q.val; rw [(blockIdx4 t).2]; omega

theorem block5_apply (A : S64512x1.Idx → EReal) (t : Fin cfg1.N) (r : Fin 1024) (q : Fin 1) (k : Fin 64512)
    (hk : k.val = 1024 * (15 + t.val) + r.val) :
    ((cfg1.win 5).blk t).view.read (Elt Ideal) A (ix2 r q) = A (ix2 k q) := by
  rw [View.read_apply]
  show A _ = A _
  congr 1
  funext a
  apply Fin.ext
  match a with
  | ⟨0, _⟩ => show win1_5.index t (0 : Fin 2) * 1024 + 1 * r.val = k.val; rw [(blockIdx5 t).1, hk]; omega
  | ⟨1, _⟩ => show win1_5.index t (1 : Fin 2) * 1 + 1 * q.val = q.val; rw [(blockIdx5 t).2]; omega

theorem block6_apply (A : S64512x1.Idx → EReal) (t : Fin cfg1.N) (r : Fin 1024) (q : Fin 1) (k : Fin 64512)
    (hk : k.val = 1024 * (15 + t.val) + r.val) :
    ((cfg1.win 6).blk t).view.read (Elt Ideal) A (ix2 r q) = A (ix2 k q) := by
  rw [View.read_apply]
  show A _ = A _
  congr 1
  funext a
  apply Fin.ext
  match a with
  | ⟨0, _⟩ => show win1_6.index t (0 : Fin 2) * 1024 + 1 * r.val = k.val; rw [(blockIdx6 t).1, hk]; omega
  | ⟨1, _⟩ => show win1_6.index t (1 : Fin 2) * 1 + 1 * q.val = q.val; rw [(blockIdx6 t).2]; omega

theorem block7_apply (A : S64512x1.Idx → EReal) (t : Fin cfg1.N) (r : Fin 1024) (q : Fin 1) (k : Fin 64512)
    (hk : k.val = 1024 * (15 + t.val) + r.val) :
    ((cfg1.win 7).blk t).view.read (Elt Ideal) A (ix2 r q) = A (ix2 k q) := by
  rw [View.read_apply]
  show A _ = A _
  congr 1
  funext a
  apply Fin.ext
  match a with
  | ⟨0, _⟩ => show win1_7.index t (0 : Fin 2) * 1024 + 1 * r.val = k.val; rw [(blockIdx7 t).1, hk]; omega
  | ⟨1, _⟩ => show win1_7.index t (1 : Fin 2) * 1 + 1 * q.val = q.val; rw [(blockIdx7 t).2]; omega

theorem block8_apply (A : S16384x2x128.Idx → EReal) (t : Fin cfg1.N) (r : Fin 1024) (s : Fin 2) (q : Fin 128) (i : Fin 16384)
    (hi : i.val = 1024 * t.val + r.val) :
    ((cfg1.win 8).blk t).view.read (Elt Ideal) A (ix3 r s q) = A (ix3 i s q) := by
  rw [View.read_apply]
  show A _ = A _
  congr 1
  funext a
  apply Fin.ext
  match a with
  | ⟨0, _⟩ => show win1_8.index t (0 : Fin 3) * 1024 + 1 * r.val = i.val; rw [(blockIdx8 t).1, hi]; omega
  | ⟨1, _⟩ => show win1_8.index t (1 : Fin 3) * 2 + 1 * s.val = s.val; rw [(blockIdx8 t).2.1]; omega
  | ⟨2, _⟩ => show win1_8.index t (2 : Fin 3) * 128 + 1 * q.val = q.val; rw [(blockIdx8 t).2.2]; omega

theorem block9_apply (A : S16384x2x128.Idx → EReal) (t : Fin cfg1.N) (r : Fin 1024) (s : Fin 2) (q : Fin 128) (i : Fin 16384)
    (hi : i.val = 1024 * t.val + r.val) :
    ((cfg1.win 9).blk t).view.read (Elt Ideal) A (ix3 r s q) = A (ix3 i s q) := by
  rw [View.read_apply]
  show A _ = A _
  congr 1
  funext a
  apply Fin.ext
  match a with
  | ⟨0, _⟩ => show win1_9.index t (0 : Fin 3) * 1024 + 1 * r.val = i.val; rw [(blockIdx9 t).1, hi]; omega
  | ⟨1, _⟩ => show win1_9.index t (1 : Fin 3) * 2 + 1 * s.val = s.val; rw [(blockIdx9 t).2.1]; omega
  | ⟨2, _⟩ => show win1_9.index t (2 : Fin 3) * 128 + 1 * q.val = q.val; rw [(blockIdx9 t).2.2]; omega

theorem block10_apply (A : S16384x2x128.Idx → EReal) (t : Fin cfg1.N) (r : Fin 1024) (s : Fin 2) (q : Fin 128) (i : Fin 16384)
    (hi : i.val = 1024 * t.val + r.val) :
    ((cfg1.win 10).blk t).view.read (Elt Ideal) A (ix3 r s q) = A (ix3 i s q) := by
  rw [View.read_apply]
  show A _ = A _
  congr 1
  funext a
  apply Fin.ext
  match a with
  | ⟨0, _⟩ => show win1_10.index t (0 : Fin 3) * 1024 + 1 * r.val = i.val; rw [(blockIdx10 t).1, hi]; omega
  | ⟨1, _⟩ => show win1_10.index t (1 : Fin 3) * 2 + 1 * s.val = s.val; rw [(blockIdx10 t).2.1]; omega
  | ⟨2, _⟩ => show win1_10.index t (2 : Fin 3) * 128 + 1 * q.val = q.val; rw [(blockIdx10 t).2.2]; omega

theorem block11_eq (A : S32x128.Idx → EReal) (t : Fin cfg1.N) :
    (((cfg1.win 11).blk t).view.read (Elt Ideal) A : S32x128.Idx → EReal) = A := by
  funext x
  rw [View.read_apply]
  show A _ = A _
  congr 1
  funext a
  apply Fin.ext
  match a with
  | ⟨0, _⟩ => show win1_11.index t (0 : Fin 2) * 32 + 1 * (x 0).val = (x 0).val; rw [(blockIdx11 t).1]; omega
  | ⟨1, _⟩ => show win1_11.index t (1 : Fin 2) * 128 + 1 * (x 1).val = (x 1).val; rw [(blockIdx11 t).2]; omega

theorem block12_eq (A : S1x128.Idx → EReal) (t : Fin cfg1.N) :
    (((cfg1.win 12).blk t).view.read (Elt Ideal) A : S1x128.Idx → EReal) = A := by
  funext x
  rw [View.read_apply]
  show A _ = A _
  congr 1
  funext a
  apply Fin.ext
  match a with
  | ⟨0, _⟩ => show win1_12.index t (0 : Fin 2) * 1 + 1 * (x 0).val = (x 0).val; rw [(blockIdx12 t).1]; omega
  | ⟨1, _⟩ => show win1_12.index t (1 : Fin 2) * 128 + 1 * (x 1).val = (x 1).val; rw [(blockIdx12 t).2]; omega

theorem block13_eq (A : S32x128.Idx → EReal) (t : Fin cfg1.N) :
    (((cfg1.win 13).blk t).view.read (Elt Ideal) A : S32x128.Idx → EReal) = A := by
  funext x
  rw [View.read_apply]
  show A _ = A _
  congr 1
  funext a
  apply Fin.ext
  match a with
  | ⟨0, _⟩ => show win1_13.index t (0 : Fin 2) * 32 + 1 * (x 0).val = (x 0).val; rw [(blockIdx13 t).1]; omega
  | ⟨1, _⟩ => show win1_13.index t (1 : Fin 2) * 128 + 1 * (x 1).val = (x 1).val; rw [(blockIdx13 t).2]; omega

theorem block14_eq (A : S1x128.Idx → EReal) (t : Fin cfg1.N) :
    (((cfg1.win 14).blk t).view.read (Elt Ideal) A : S1x128.Idx → EReal) = A := by
  funext x
  rw [View.read_apply]
  show A _ = A _
  congr 1
  funext a
  apply Fin.ext
  match a with
  | ⟨0, _⟩ => show win1_14.index t (0 : Fin 2) * 1 + 1 * (x 0).val = (x 0).val; rw [(blockIdx14 t).1]; omega
  | ⟨1, _⟩ => show win1_14.index t (1 : Fin 2) * 128 + 1 * (x 1).val = (x 1).val; rw [(blockIdx14 t).2]; omega

theorem block15_eq (A : S1000x128.Idx → EReal) (t : Fin cfg1.N) :
    (((cfg1.win 15).blk t).view.read (Elt Ideal) A : S1000x128.Idx → EReal) = A := by
  funext x
  rw [View.read_apply]
  show A _ = A _
  congr 1
  funext a
  apply Fin.ext
  match a with
  | ⟨0, _⟩ => show win1_15.index t (0 : Fin 2) * 1000 + 1 * (x 0).val = (x 0).val; rw [(blockIdx15 t).1]; omega
  | ⟨1, _⟩ => show win1_15.index t (1 : Fin 2) * 128 + 1 * (x 1).val = (x 1).val; rw [(blockIdx15 t).2]; omega

theorem block16_eq (A : S1x128.Idx → EReal) (t : Fin cfg1.N) :
    (((cfg1.win 16).blk t).view.read (Elt Ideal) A : S1x128.Idx → EReal) = A := by
  funext x
  rw [View.read_apply]
  show A _ = A _
  congr 1
  funext a
  apply Fin.ext
  match a with
  | ⟨0, _⟩ => show win1_16.index t (0 : Fin 2) * 1 + 1 * (x 0).val = (x 0).val; rw [(blockIdx16 t).1]; omega
  | ⟨1, _⟩ => show win1_16.index t (1 : Fin 2) * 128 + 1 * (x 1).val = (x 1).val; rw [(blockIdx16 t).2]; omega

theorem block17_eq (A : S256x512.Idx → EReal) (t : Fin cfg1.N) :
    (((cfg1.win 17).blk t).view.read (Elt Ideal) A : S256x512.Idx → EReal) = A := by
  funext x
  rw [View.read_apply]
  show A _ = A _
  congr 1
  funext a
  apply Fin.ext
  match a with
  | ⟨0, _⟩ => show win1_17.index t (0 : Fin 2) * 256 + 1 * (x 0).val = (x 0).val; rw [(blockIdx17 t).1]; omega
  | ⟨1, _⟩ => show win1_17.index t (1 : Fin 2) * 512 + 1 * (x 1).val = (x 1).val; rw [(blockIdx17 t).2]; omega

theorem block18_eq (A : S1x128.Idx → EReal) (t : Fin cfg1.N) :
    (((cfg1.win 18).blk t).view.read (Elt Ideal) A : S1x128.Idx → EReal) = A := by
  funext x
  rw [View.read_apply]
  show A _ = A _
  congr 1
  funext a
  apply Fin.ext
  match a with
  | ⟨0, _⟩ => show win1_18.index t (0 : Fin 2) * 1 + 1 * (x 0).val = (x 0).val; rw [(blockIdx18 t).1]; omega
  | ⟨1, _⟩ => show win1_18.index t (1 : Fin 2) * 128 + 1 * (x 1).val = (x 1).val; rw [(blockIdx18 t).2]; omega

theorem block19_eq (A : S1408x512.Idx → EReal) (t : Fin cfg1.N) :
    (((cfg1.win 19).blk t).view.read (Elt Ideal) A : S1408x512.Idx → EReal) = A := by
  funext x
  rw [View.read_apply]
  show A _ = A _
  congr 1
  funext a
  apply Fin.ext
  match a with
  | ⟨0, _⟩ => show win1_19.index t (0 : Fin 2) * 1408 + 1 * (x 0).val = (x 0).val; rw [(blockIdx19 t).1]; omega
  | ⟨1, _⟩ => show win1_19.index t (1 : Fin 2) * 512 + 1 * (x 1).val = (x 1).val; rw [(blockIdx19 t).2]; omega

theorem block20_eq (A : S1x512.Idx → EReal) (t : Fin cfg1.N) :
    (((cfg1.win 20).blk t).view.read (Elt Ideal) A : S1x512.Idx → EReal) = A := by
  funext x
  rw [View.read_apply]
  show A _ = A _
  congr 1
  funext a
  apply Fin.ext
  match a with
  | ⟨0, _⟩ => show win1_20.index t (0 : Fin 2) * 1 + 1 * (x 0).val = (x 0).val; rw [(blockIdx20 t).1]; omega
  | ⟨1, _⟩ => show win1_20.index t (1 : Fin 2) * 512 + 1 * (x 1).val = (x 1).val; rw [(blockIdx20 t).2]; omega

theorem block21_eq (A : S512x256.Idx → EReal) (t : Fin cfg1.N) :
    (((cfg1.win 21).blk t).view.read (Elt Ideal) A : S512x256.Idx → EReal) = A := by
  funext x
  rw [View.read_apply]
  show A _ = A _
  congr 1
  funext a
  apply Fin.ext
  match a with
  | ⟨0, _⟩ => show win1_21.index t (0 : Fin 2) * 512 + 1 * (x 0).val = (x 0).val; rw [(blockIdx21 t).1]; omega
  | ⟨1, _⟩ => show win1_21.index t (1 : Fin 2) * 256 + 1 * (x 1).val = (x 1).val; rw [(blockIdx21 t).2]; omega

theorem block22_eq (A : S1x256.Idx → EReal) (t : Fin cfg1.N) :
    (((cfg1.win 22).blk t).view.read (Elt Ideal) A : S1x256.Idx → EReal) = A := by
  funext x
  rw [View.read_apply]
  show A _ = A _
  congr 1
  funext a
  apply Fin.ext
  match a with
  | ⟨0, _⟩ => show win1_22.index t (0 : Fin 2) * 1 + 1 * (x 0).val = (x 0).val; rw [(blockIdx22 t).1]; omega
  | ⟨1, _⟩ => show win1_22.index t (1 : Fin 2) * 256 + 1 * (x 1).val = (x 1).val; rw [(blockIdx22 t).2]; omega

theorem block23_eq (A : S256x128.Idx → EReal) (t : Fin cfg1.N) :
    (((cfg1.win 23).blk t).view.read (Elt Ideal) A : S256x128.Idx → EReal) = A := by
  funext x
  rw [View.read_apply]
  show A _ = A _
  congr 1
  funext a
  apply Fin.ext
  match a with
  | ⟨0, _⟩ => show win1_23.index t (0 : Fin 2) * 256 + 1 * (x 0).val = (x 0).val; rw [(blockIdx23 t).1]; omega
  | ⟨1, _⟩ => show win1_23.index t (1 : Fin 2) * 128 + 1 * (x 1).val = (x 1).val; rw [(blockIdx23 t).2]; omega

theorem block24_eq (A : S1x128.Idx → EReal) (t : Fin cfg1.N) :
    (((cfg1.win 24).blk t).view.read (Elt Ideal) A : S1x128.Idx → EReal) = A := by
  funext x
  rw [View.read_apply]
  show A _ = A _
  congr 1
  funext a
  apply Fin.ext
  match a with
  | ⟨0, _⟩ => show win1_24.index t (0 : Fin 2) * 1 + 1 * (x 0).val = (x 0).val; rw [(blockIdx24 t).1]; omega
  | ⟨1, _⟩ => show win1_24.index t (1 : Fin 2) * 128 + 1 * (x 1).val = (x 1).val; rw [(blockIdx24 t).2]; omega

theorem writeBack25_eq (X : S1024x128.Idx → EReal) (G : S16384x128.Idx → EReal) (t : Fin cfg1.N)
    (h : ∀ (r : Fin 1024) (j : Fin 128) (i : Fin 16384), i.val = 1024 * t.val + r.val → X (ix2 r j) = G (ix2 i j)) :
    (cfg1.win 25).cut (grid1.coords t) X = ((cfg1.win 25).blk t).view.read (Elt Ideal) G := by
  funext y
  rw [View.read_apply]
  show X ((cfg1.win 25).xinj (grid1.coords t) y) = G (((cfg1.win 25).blk t).view.emb y)
  have hy : (cfg1.win 25).xinj (grid1.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 16 := by have h := t.isLt; have e : cfg1.N = 16 := N_1; omega
  have he : ((cfg1.win 25).blk t).view.emb y = ix2 (⟨1024 * t.val + (y 0).val, by omega⟩ : Fin 16384) (⟨(y 1).val, (y 1).isLt⟩ : Fin 128) := by
    funext a
    apply Fin.ext
    match a with
    | ⟨0, _⟩ => show win1_25.index t (0 : Fin 2) * 1024 + 1 * (y 0).val = 1024 * t.val + (y 0).val; rw [(blockIdx25 t).1]; omega
    | ⟨1, _⟩ => show win1_25.index t (1 : Fin 2) * 128 + 1 * (y 1).val = (y 1).val; rw [(blockIdx25 t).2]; omega
  rw [hy, he]
  exact h _ _ _ rfl

theorem rowCover25 (c : Dev nD) (i : ((cfg1.win 25).arr.view.loc (c.tc : Thread nD τ)).2.ty.Idx) :
    ∃ t : Fin cfg1.N, (cfg1.win 25).flush t = true ∧ i ∈ ((cfg1.win 25).blk t).view.set := by
  have h0 : (i 0).val < 16384 := (i 0).isLt
  have h1 : (i 1).val < 128 := (i 1).isLt
  have hlt : (i 0).val / 1024 < cfg1.N := by show _ < grid1.N; rw [N_1]; omega
  refine ⟨⟨(i 0).val / 1024, hlt⟩, flush1_25 _, ?_⟩
  show i ∈ ((View.whole main_v42_0).slice (win1_25.rect ⟨(i 0).val / 1024, hlt⟩)).set
  rw [View.set_slice_whole, Rect.mem_set_unit]
  intro a
  match a with
  | ⟨0, _⟩ =>
    show win1_25.index ⟨(i 0).val / 1024, hlt⟩ (0 : Fin 2) * 1024 ≤ (i 0).val ∧ (i 0).val < win1_25.index ⟨(i 0).val / 1024, hlt⟩ (0 : Fin 2) * 1024 + 1024
    rw [(blockIdx25 _).1]; show (i 0).val / 1024 * 1024 ≤ _ ∧ _ < (i 0).val / 1024 * 1024 + 1024; omega
  | ⟨1, _⟩ =>
    show win1_25.index ⟨(i 0).val / 1024, hlt⟩ (1 : Fin 2) * 128 ≤ (i 1).val ∧ (i 1).val < win1_25.index ⟨(i 0).val / 1024, hlt⟩ (1 : Fin 2) * 128 + 128
    rw [(blockIdx25 _).2]; omega

theorem writeBack26_eq (X : S1024x128.Idx → EReal) (G : S16384x128.Idx → EReal) (t : Fin cfg1.N)
    (h : ∀ (r : Fin 1024) (j : Fin 128) (i : Fin 16384), i.val = 1024 * t.val + r.val → X (ix2 r j) = G (ix2 i j)) :
    (cfg1.win 26).cut (grid1.coords t) X = ((cfg1.win 26).blk t).view.read (Elt Ideal) G := by
  funext y
  rw [View.read_apply]
  show X ((cfg1.win 26).xinj (grid1.coords t) y) = G (((cfg1.win 26).blk t).view.emb y)
  have hy : (cfg1.win 26).xinj (grid1.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 16 := by have h := t.isLt; have e : cfg1.N = 16 := N_1; omega
  have he : ((cfg1.win 26).blk t).view.emb y = ix2 (⟨1024 * t.val + (y 0).val, by omega⟩ : Fin 16384) (⟨(y 1).val, (y 1).isLt⟩ : Fin 128) := by
    funext a
    apply Fin.ext
    match a with
    | ⟨0, _⟩ => show win1_26.index t (0 : Fin 2) * 1024 + 1 * (y 0).val = 1024 * t.val + (y 0).val; rw [(blockIdx26 t).1]; omega
    | ⟨1, _⟩ => show win1_26.index t (1 : Fin 2) * 128 + 1 * (y 1).val = (y 1).val; rw [(blockIdx26 t).2]; omega
  rw [hy, he]
  exact h _ _ _ rfl

theorem rowCover26 (c : Dev nD) (i : ((cfg1.win 26).arr.view.loc (c.tc : Thread nD τ)).2.ty.Idx) :
    ∃ t : Fin cfg1.N, (cfg1.win 26).flush t = true ∧ i ∈ ((cfg1.win 26).blk t).view.set := by
  have h0 : (i 0).val < 16384 := (i 0).isLt
  have h1 : (i 1).val < 128 := (i 1).isLt
  have hlt : (i 0).val / 1024 < cfg1.N := by show _ < grid1.N; rw [N_1]; omega
  refine ⟨⟨(i 0).val / 1024, hlt⟩, flush1_26 _, ?_⟩
  show i ∈ ((View.whole main_v42_1).slice (win1_26.rect ⟨(i 0).val / 1024, hlt⟩)).set
  rw [View.set_slice_whole, Rect.mem_set_unit]
  intro a
  match a with
  | ⟨0, _⟩ =>
    show win1_26.index ⟨(i 0).val / 1024, hlt⟩ (0 : Fin 2) * 1024 ≤ (i 0).val ∧ (i 0).val < win1_26.index ⟨(i 0).val / 1024, hlt⟩ (0 : Fin 2) * 1024 + 1024
    rw [(blockIdx26 _).1]; show (i 0).val / 1024 * 1024 ≤ _ ∧ _ < (i 0).val / 1024 * 1024 + 1024; omega
  | ⟨1, _⟩ =>
    show win1_26.index ⟨(i 0).val / 1024, hlt⟩ (1 : Fin 2) * 128 ≤ (i 1).val ∧ (i 1).val < win1_26.index ⟨(i 0).val / 1024, hlt⟩ (1 : Fin 2) * 128 + 128
    rw [(blockIdx26 _).2]; omega

theorem writeBack27_eq (X : S1024x128.Idx → EReal) (G : S16384x128.Idx → EReal) (t : Fin cfg1.N)
    (h : ∀ (r : Fin 1024) (j : Fin 128) (i : Fin 16384), i.val = 1024 * t.val + r.val → X (ix2 r j) = G (ix2 i j)) :
    (cfg1.win 27).cut (grid1.coords t) X = ((cfg1.win 27).blk t).view.read (Elt Ideal) G := by
  funext y
  rw [View.read_apply]
  show X ((cfg1.win 27).xinj (grid1.coords t) y) = G (((cfg1.win 27).blk t).view.emb y)
  have hy : (cfg1.win 27).xinj (grid1.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 16 := by have h := t.isLt; have e : cfg1.N = 16 := N_1; omega
  have he : ((cfg1.win 27).blk t).view.emb y = ix2 (⟨1024 * t.val + (y 0).val, by omega⟩ : Fin 16384) (⟨(y 1).val, (y 1).isLt⟩ : Fin 128) := by
    funext a
    apply Fin.ext
    match a with
    | ⟨0, _⟩ => show win1_27.index t (0 : Fin 2) * 1024 + 1 * (y 0).val = 1024 * t.val + (y 0).val; rw [(blockIdx27 t).1]; omega
    | ⟨1, _⟩ => show win1_27.index t (1 : Fin 2) * 128 + 1 * (y 1).val = (y 1).val; rw [(blockIdx27 t).2]; omega
  rw [hy, he]
  exact h _ _ _ rfl

theorem rowCover27 (c : Dev nD) (i : ((cfg1.win 27).arr.view.loc (c.tc : Thread nD τ)).2.ty.Idx) :
    ∃ t : Fin cfg1.N, (cfg1.win 27).flush t = true ∧ i ∈ ((cfg1.win 27).blk t).view.set := by
  have h0 : (i 0).val < 16384 := (i 0).isLt
  have h1 : (i 1).val < 128 := (i 1).isLt
  have hlt : (i 0).val / 1024 < cfg1.N := by show _ < grid1.N; rw [N_1]; omega
  refine ⟨⟨(i 0).val / 1024, hlt⟩, flush1_27 _, ?_⟩
  show i ∈ ((View.whole main_v42_2).slice (win1_27.rect ⟨(i 0).val / 1024, hlt⟩)).set
  rw [View.set_slice_whole, Rect.mem_set_unit]
  intro a
  match a with
  | ⟨0, _⟩ =>
    show win1_27.index ⟨(i 0).val / 1024, hlt⟩ (0 : Fin 2) * 1024 ≤ (i 0).val ∧ (i 0).val < win1_27.index ⟨(i 0).val / 1024, hlt⟩ (0 : Fin 2) * 1024 + 1024
    rw [(blockIdx27 _).1]; show (i 0).val / 1024 * 1024 ≤ _ ∧ _ < (i 0).val / 1024 * 1024 + 1024; omega
  | ⟨1, _⟩ =>
    show win1_27.index ⟨(i 0).val / 1024, hlt⟩ (1 : Fin 2) * 128 ≤ (i 1).val ∧ (i 1).val < win1_27.index ⟨(i 0).val / 1024, hlt⟩ (1 : Fin 2) * 128 + 128
    rw [(blockIdx27 _).2]; omega

theorem rep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A0 : S64512x32.Idx → EReal) (A1 : S64512x32.Idx → EReal) (A2 : S64512x1000.Idx → EReal) (A3 : S64512x256.Idx → EReal) (A4 : S64512x256.Idx → EReal) (A5 : S64512x1.Idx → EReal) (A6 : S64512x1.Idx → EReal) (A7 : S64512x1.Idx → EReal) (A8 : S16384x2x128.Idx → EReal) (A9 : S16384x2x128.Idx → EReal) (A10 : S16384x2x128.Idx → EReal) (A11 : S32x128.Idx → EReal) (A12 : S1x128.Idx → EReal) (A13 : S32x128.Idx → EReal) (A14 : S1x128.Idx → EReal) (A15 : S1000x128.Idx → EReal) (A16 : S1x128.Idx → EReal) (A17 : S256x512.Idx → EReal) (A18 : S1x128.Idx → EReal) (A19 : S1408x512.Idx → EReal) (A20 : S1x512.Idx → EReal) (A21 : S512x256.Idx → EReal) (A22 : S1x256.Idx → EReal) (A23 : S256x128.Idx → EReal) (A24 : S1x128.Idx → EReal)
    (r : Fin 1024) (j : Fin 128) (k : Fin 64512) (i : Fin 16384)
    (h0 : mat x0 r = mat A0 k) (h1 : mat x1 r = mat A1 k) (h2 : mat x2 r = mat A2 k) (h3 : mat x3 r = mat A3 k) (h4 : mat x4 r = mat A4 k) (h5 : col x5 r = col A5 k) (h6 : col x6 r = col A6 k) (h7 : col x7 r = col A7 k) (h8 : ten3 x8 r = ten3 A8 i) (h9 : ten3 x9 r = ten3 A9 i) (h10 : ten3 x10 r = ten3 A10 i) (h11 : x11 = A11) (h12 : x12 = A12) (h13 : x13 = A13) (h14 : x14 = A14) (h15 : x15 = A15) (h16 : x16 = A16) (h17 : x17 = A17) (h18 : x18 = A18) (h19 : x19 = A19) (h20 : x20 = A20) (h21 : x21 = A21) (h22 : x22 = A22) (h23 : x23 = A23) (h24 : x24 = A24) :
    out1_25 (F := Ideal) x0 x1 x2 x3 x4 x5 x6 x7 x8 x9 x10 x11 x12 x13 x14 x15 x16 x17 x18 x19 x20 x21 x22 x23 x24 (ix2 r j)
      = nodeRep (MLP3.ofTiles A19 A20 A21 A22 A23 A24)
          (embK (EmbW.ofTiles A11 A12 A13 A14 A15 A16 A18) (mat A17) (mat A0 k) (mat A1 k) (mat A2 k) (mat A3 k) (mat A4 k) (col A5 k))
          (col A6 k) (col A7 k) (ten3 A8 i) (ten3 A9 i) (ten3 A10 i) j := by
  subst h11 h12 h13 h14 h15 h16 h17 h18 h19 h20 h21 h22 h23 h24
  rw [out25_apply, h0, h1, h2, h3, h4, h5, h6, h7, h8, h9, h10]

theorem lrep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A6 : S64512x1.Idx → EReal) (A8 : S16384x2x128.Idx → EReal)
    (r : Fin 1024) (j : Fin 128) (k : Fin 64512) (i : Fin 16384)
    (h6 : col x6 r = col A6 k) (h8 : ten3 x8 r = ten3 A8 i) :
    out1_26 (F := Ideal) x0 x1 x2 x3 x4 x5 x6 x7 x8 x9 x10 x11 x12 x13 x14 x15 x16 x17 x18 x19 x20 x21 x22 x23 x24 (ix2 r j) = ten3 A8 i 0 j * col A6 k := by
  rw [out26_apply, h6, h8]

theorem rrep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A7 : S64512x1.Idx → EReal) (A8 : S16384x2x128.Idx → EReal)
    (r : Fin 1024) (j : Fin 128) (k : Fin 64512) (i : Fin 16384)
    (h7 : col x7 r = col A7 k) (h8 : ten3 x8 r = ten3 A8 i) :
    out1_27 (F := Ideal) x0 x1 x2 x3 x4 x5 x6 x7 x8 x9 x10 x11 x12 x13 x14 x15 x16 x17 x18 x19 x20 x21 x22 x23 x24 (ix2 r j) = ten3 A8 i 1 j * col A7 k := by
  rw [out27_apply, h7, h8]

variable (V : (c : Dev nD) → (b : Ref sig .tc) → Buf (Elt Ideal) ((c : Thread nD τ).loc b)) (c : Dev nD)

def mlp : MLP3 :=
  MLP3.ofTiles (V c (Pipeline.arrRef spec1 19) : S1408x512.Idx → EReal) (V c (Pipeline.arrRef spec1 20) : S1x512.Idx → EReal)
    (V c (Pipeline.arrRef spec1 21) : S512x256.Idx → EReal) (V c (Pipeline.arrRef spec1 22) : S1x256.Idx → EReal)
    (V c (Pipeline.arrRef spec1 23) : S256x128.Idx → EReal) (V c (Pipeline.arrRef spec1 24) : S1x128.Idx → EReal)

def embW : EmbW :=
  EmbW.ofTiles (V c (Pipeline.arrRef spec1 11) : S32x128.Idx → EReal) (V c (Pipeline.arrRef spec1 12) : S1x128.Idx → EReal)
    (V c (Pipeline.arrRef spec1 13) : S32x128.Idx → EReal) (V c (Pipeline.arrRef spec1 14) : S1x128.Idx → EReal)
    (V c (Pipeline.arrRef spec1 15) : S1000x128.Idx → EReal) (V c (Pipeline.arrRef spec1 16) : S1x128.Idx → EReal)
    (V c (Pipeline.arrRef spec1 18) : S1x128.Idx → EReal)

def E : Fin 64512 → Fin 5 → Fin 128 → EReal := fun i =>
  embK (embW V c) (mat (V c (Pipeline.arrRef spec1 17) : S256x512.Idx → EReal))
    (mat (V c (Pipeline.arrRef spec1 0) : S64512x32.Idx → EReal) i) (mat (V c (Pipeline.arrRef spec1 1) : S64512x32.Idx → EReal) i)
    (mat (V c (Pipeline.arrRef spec1 2) : S64512x1000.Idx → EReal) i) (mat (V c (Pipeline.arrRef spec1 3) : S64512x256.Idx → EReal) i)
    (mat (V c (Pipeline.arrRef spec1 4) : S64512x256.Idx → EReal) i) (col (V c (Pipeline.arrRef spec1 5) : S64512x1.Idx → EReal) i)

def value : Carry 16384 :=
  stepK 16384 15360 (by norm_num) (E V c) (col (V c (Pipeline.arrRef spec1 6) : S64512x1.Idx → EReal))
    (col (V c (Pipeline.arrRef spec1 7) : S64512x1.Idx → EReal)) (mlp V c)
    (ten3 (V c (Pipeline.arrRef spec1 8) : S16384x2x128.Idx → EReal)) (ten3 (V c (Pipeline.arrRef spec1 9) : S16384x2x128.Idx → EReal))
    (ten3 (V c (Pipeline.arrRef spec1 10) : S16384x2x128.Idx → EReal))

theorem flushed25_eq (t : Fin cfg1.N) :
    (dat1 V c).flushed 25 t = ((cfg1.win 25).blk t).view.read (Elt Ideal) (arr2 (value V c).rep) := by
  show (cfg1.win 25).cut (grid1.coords t) ((dat1 V c).after 25 t) = _
  rw [after1_25]
  refine writeBack25_eq _ _ t fun r j i hi => ?_
  have hN : t.val < 16 := by have h := t.isLt; have e : cfg1.N = 16 := N_1; omega
  have hk : (⟨15360 + i.val, by omega⟩ : Fin 64512).val = 1024 * (15 + t.val) + r.val := by show 15360 + i.val = _; omega
  exact rep_point (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t)
    (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11)) (V c (Pipeline.arrRef spec1 12)) (V c (Pipeline.arrRef spec1 13)) (V c (Pipeline.arrRef spec1 14)) (V c (Pipeline.arrRef spec1 15)) (V c (Pipeline.arrRef spec1 16)) (V c (Pipeline.arrRef spec1 17)) (V c (Pipeline.arrRef spec1 18)) (V c (Pipeline.arrRef spec1 19)) (V c (Pipeline.arrRef spec1 20)) (V c (Pipeline.arrRef spec1 21)) (V c (Pipeline.arrRef spec1 22)) (V c (Pipeline.arrRef spec1 23)) (V c (Pipeline.arrRef spec1 24))
    r j ⟨15360 + i.val, by omega⟩ i
    (funext fun q => block0_apply _ t r q _ hk)
    (funext fun q => block1_apply _ t r q _ hk)
    (funext fun q => block2_apply _ t r q _ hk)
    (funext fun q => block3_apply _ t r q _ hk)
    (funext fun q => block4_apply _ t r q _ hk)
    (block5_apply _ t r 0 _ hk)
    (block6_apply _ t r 0 _ hk)
    (block7_apply _ t r 0 _ hk)
    (funext fun s => funext fun q => block8_apply _ t r s q i hi)
    (funext fun s => funext fun q => block9_apply _ t r s q i hi)
    (funext fun s => funext fun q => block10_apply _ t r s q i hi)
    (block11_eq _ t)
    (block12_eq _ t)
    (block13_eq _ t)
    (block14_eq _ t)
    (block15_eq _ t)
    (block16_eq _ t)
    (block17_eq _ t)
    (block18_eq _ t)
    (block19_eq _ t)
    (block20_eq _ t)
    (block21_eq _ t)
    (block22_eq _ t)
    (block23_eq _ t)
    (block24_eq _ t)

theorem flushed26_eq (t : Fin cfg1.N) :
    (dat1 V c).flushed 26 t = ((cfg1.win 26).blk t).view.read (Elt Ideal) (arr2 (value V c).lrep) := by
  show (cfg1.win 26).cut (grid1.coords t) ((dat1 V c).after 26 t) = _
  rw [after1_26]
  refine writeBack26_eq _ _ t fun r j i hi => ?_
  have hN : t.val < 16 := by have h := t.isLt; have e : cfg1.N = 16 := N_1; omega
  have hk : (⟨15360 + i.val, by omega⟩ : Fin 64512).val = 1024 * (15 + t.val) + r.val := by show 15360 + i.val = _; omega
  exact lrep_point (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t)
    (V c (Pipeline.arrRef spec1 6)) (V c (Pipeline.arrRef spec1 8)) r j ⟨15360 + i.val, by omega⟩ i
    (block6_apply _ t r 0 _ hk) (funext fun s => funext fun q => block8_apply _ t r s q i hi)

theorem flushed27_eq (t : Fin cfg1.N) :
    (dat1 V c).flushed 27 t = ((cfg1.win 27).blk t).view.read (Elt Ideal) (arr2 (value V c).rrep) := by
  show (cfg1.win 27).cut (grid1.coords t) ((dat1 V c).after 27 t) = _
  rw [after1_27]
  refine writeBack27_eq _ _ t fun r j i hi => ?_
  have hN : t.val < 16 := by have h := t.isLt; have e : cfg1.N = 16 := N_1; omega
  have hk : (⟨15360 + i.val, by omega⟩ : Fin 64512).val = 1024 * (15 + t.val) + r.val := by show 15360 + i.val = _; omega
  exact rrep_point (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t)
    (V c (Pipeline.arrRef spec1 7)) (V c (Pipeline.arrRef spec1 8)) r j ⟨15360 + i.val, by omega⟩ i
    (block7_apply _ t r 0 _ hk) (funext fun s => funext fun q => block8_apply _ t r s q i hi)

theorem rep_eq : ((dat1 V c).arrAt 25 cfg1.N : S16384x128.Idx → EReal) = arr2 (value V c).rep := by
  exact (dat1 V c).arrAt_eq_of_cover 25 (arr2 (value V c).rep) (fun t _ => flushed25_eq V c t) (rowCover25 c)

theorem lrep_eq : ((dat1 V c).arrAt 26 cfg1.N : S16384x128.Idx → EReal) = arr2 (value V c).lrep := by
  exact (dat1 V c).arrAt_eq_of_cover 26 (arr2 (value V c).lrep) (fun t _ => flushed26_eq V c t) (rowCover26 c)

theorem rrep_eq : ((dat1 V c).arrAt 27 cfg1.N : S16384x128.Idx → EReal) = arr2 (value V c).rrep := by
  exact (dat1 V c).arrAt_eq_of_cover 27 (arr2 (value V c).rrep) (fun t _ => flushed27_eq V c t) (rowCover27 c)

end Cert.KernelIdeal.Region1

end
-- ==== Proof.KLevel4.lean ====
import proofs.«410031_j84061099917532_3_alg».proof.Proof.Gen.KernelIdeal.Frame
import proofs.«410031_j84061099917532_3_alg».proof.Proof.Spec
import proofs.«410031_j84061099917532_3_alg».proof.Proof.SpecPool
import proofs.«410031_j84061099917532_3_alg».proof.Proof.KArgs
import proofs.«410031_j84061099917532_3_alg».proof.Proof.KKeep
import proofs.«410031_j84061099917532_3_alg».proof.Proof.KStable
import proofs.«410031_j84061099917532_3_alg».proof.Proof.KBridge
import proofs.«410031_j84061099917532_3_alg».proof.Proof.KHost0
import proofs.«410031_j84061099917532_3_alg».proof.Proof.KHost1
import proofs.«410031_j84061099917532_3_alg».proof.Proof.R1Out

noncomputable section

open Idealize.ShloMosaic Idealize.ShloMosaic.TcCoe Idealize.SL.Sem
open TreeNN ValueIdx

namespace Cert.KernelIdeal.Chain

open Cert.KernelIdeal Cert.KernelIdeal.Gen

variable (m : (ℓ : Loc nD τ sig) → Buf (Elt Ideal) ℓ) (ρ : Dev nD → PrngReg) (c : Dev nD)

theorem fixed4_e (b : Ref sig .tc) (hf : b ∈ Stable.fixed) :
    W3 m ρ c (Proc.devRef .tc b) = W1 m ρ c (Proc.devRef .tc b) := Stable.W3_fixed m ρ c b hf

theorem arg4_e (b : Ref sig .tc) (hf : b ∈ Stable.fixed) (ha : b ∈ Stable.args) :
    W3 m ρ c (Proc.devRef .tc b) = W0 m ρ c (Proc.devRef .tc b) :=
  (Stable.W3_fixed m ρ c b hf).trans (Stable.W1_arg m ρ c b ha)

theorem arg4_b (b : Ref sig .tc) (hf : b ∈ Stable.fixed) (ha : b ∈ Stable.args) :
    W2 m ρ c (Proc.devRef .tc b) = W0 m ρ c (Proc.devRef .tc b) :=
  (Stable.W2_fixed m ρ c b hf).trans (Stable.W1_arg m ρ c b ha)

theorem mlp4_eq : Region1.mlp (V3 m ρ) c = pm m c := by
  unfold Region1.mlp pm
  exact mlp_bridge _ _ _ _ _ _ _ _ _ _ _ _
    (arg4_e m ρ c main_arg16 (fx 16 (by decide)) (ag 16 (by decide)))
    (fun j => (Host1.v39_apply m ρ c j).trans (congrFun (arg4_b m ρ c main_arg17 (fx 17 (by decide)) (ag 17 (by decide))) (ix1 j)))
    (arg4_e m ρ c main_arg18 (fx 18 (by decide)) (ag 18 (by decide)))
    (fun j => (Host1.v40_apply m ρ c j).trans (congrFun (arg4_b m ρ c main_arg19 (fx 19 (by decide)) (ag 19 (by decide))) (ix1 j)))
    (arg4_e m ρ c main_arg20 (fx 20 (by decide)) (ag 20 (by decide)))
    (fun j => (Host1.v41_apply m ρ c j).trans (congrFun (arg4_b m ρ c main_arg21 (fx 21 (by decide)) (ag 21 (by decide))) (ix1 j)))

theorem embW4_eq : Region1.embW (V3 m ρ) c =
    EmbW.ofArrays ((m ((c : Thread nD τ).loc main_arg8)) : S32x128.Idx → EReal) ((m ((c : Thread nD τ).loc main_arg9)) : S128.Idx → EReal)
      ((m ((c : Thread nD τ).loc main_arg10)) : S32x128.Idx → EReal) ((m ((c : Thread nD τ).loc main_arg11)) : S128.Idx → EReal)
      ((m ((c : Thread nD τ).loc main_arg12)) : S1000x128.Idx → EReal) ((m ((c : Thread nD τ).loc main_arg13)) : S128.Idx → EReal)
      ((m ((c : Thread nD τ).loc main_arg15)) : S128.Idx → EReal) := by
  unfold Region1.embW
  exact embW_bridge _ _ _ _ _ _ _ _ _ _ _ _ _ _
    (arg4_e m ρ c main_arg8 (fx 8 (by decide)) (ag 8 (by decide)))
    (fun j => (Host1.v35_apply m ρ c j).trans (congrFun (arg4_b m ρ c main_arg9 (fx 9 (by decide)) (ag 9 (by decide))) (ix1 j)))
    (arg4_e m ρ c main_arg10 (fx 10 (by decide)) (ag 10 (by decide)))
    (fun j => (Host1.v36_apply m ρ c j).trans (congrFun (arg4_b m ρ c main_arg11 (fx 11 (by decide)) (ag 11 (by decide))) (ix1 j)))
    (arg4_e m ρ c main_arg12 (fx 12 (by decide)) (ag 12 (by decide)))
    (fun j => (Host1.v37_apply m ρ c j).trans (congrFun (arg4_b m ρ c main_arg13 (fx 13 (by decide)) (ag 13 (by decide))) (ix1 j)))
    (fun j => (Host1.v38_apply m ρ c j).trans (congrFun (arg4_b m ρ c main_arg15 (fx 15 (by decide)) (ag 15 (by decide))) (ix1 j)))

theorem E4_eq : Region1.E (V3 m ρ) c = Em m c := by
  funext i
  unfold Region1.E Em embOfArrays
  rw [embW4_eq m ρ c]
  exact emb_bridge _ _ _ _ _ _ _ _ _ _ _ _ _ _ _
    (arg4_e m ρ c main_arg0 (fx 0 (by decide)) (ag 0 (by decide)))
    (arg4_e m ρ c main_arg1 (fx 1 (by decide)) (ag 1 (by decide)))
    (arg4_e m ρ c main_arg2 (fx 2 (by decide)) (ag 2 (by decide)))
    (fun k n => (congrFun (fixed4_e m ρ c main_v23 (fx 39 (by decide))) (ix2 k n)).trans (Host0.v23_apply m ρ c k n))
    (fun i k => (congrFun (fixed4_e m ρ c main_v0 (fx 34 (by decide))) (ix2 i k)).trans (Host0.v0_apply m ρ c i k))
    (fun i k => (congrFun (fixed4_e m ρ c main_v1 (fx 35 (by decide))) (ix2 i k)).trans (Host0.v1_apply m ρ c i k))
    (fun i => (congrFun (fixed4_e m ρ c main_v2 (fx 36 (by decide))) (ix2 i 0)).trans (Host0.v2_apply m ρ c i)) i

theorem lm4_eq : col (V3 m ρ c (Pipeline.arrRef spec1 6) : S64512x1.Idx → EReal) = lmm m c := by
  funext i
  exact (congrFun (fixed4_e m ρ c main_v4 (fx 37 (by decide))) (ix2 i 0)).trans (Host0.v4_apply m ρ c i)
theorem rm4_eq : col (V3 m ρ c (Pipeline.arrRef spec1 7) : S64512x1.Idx → EReal) = rmm m c := by
  funext i
  exact (congrFun (fixed4_e m ρ c main_v6 (fx 38 (by decide))) (ix2 i 0)).trans (Host0.v6_apply m ρ c i)

theorem kids4_rep (f : Fin 32768 → Fin 128 → EReal)
    (h : (W2 m ρ c (Proc.devRef .tc main_v31_0) : S32768x128.Idx → EReal) = arr2 f) :
    ten3 (V3 m ρ c (Pipeline.arrRef spec1 8) : S16384x2x128.Idx → EReal) = pair (n := 16384) (by norm_num) f :=
  kids_bridge _ _ _ f h (fun i s j => Host1.v32_apply m ρ c i s j)
theorem kids4_lrep (f : Fin 32768 → Fin 128 → EReal)
    (h : (W2 m ρ c (Proc.devRef .tc main_v31_1) : S32768x128.Idx → EReal) = arr2 f) :
    ten3 (V3 m ρ c (Pipeline.arrRef spec1 9) : S16384x2x128.Idx → EReal) = pair (n := 16384) (by norm_num) f :=
  kids_bridge _ _ _ f h (fun i s j => Host1.v33_apply m ρ c i s j)
theorem kids4_rrep (f : Fin 32768 → Fin 128 → EReal)
    (h : (W2 m ρ c (Proc.devRef .tc main_v31_2) : S32768x128.Idx → EReal) = arr2 f) :
    ten3 (V3 m ρ c (Pipeline.arrRef spec1 10) : S16384x2x128.Idx → EReal) = pair (n := 16384) (by norm_num) f :=
  kids_bridge _ _ _ f h (fun i s j => Host1.v34_apply m ρ c i s j)

theorem value4_eq (below : Carry 32768)
    (h0 : (W2 m ρ c (Proc.devRef .tc main_v31_0) : S32768x128.Idx → EReal) = arr2 below.rep)
    (h1 : (W2 m ρ c (Proc.devRef .tc main_v31_1) : S32768x128.Idx → EReal) = arr2 below.lrep)
    (h2 : (W2 m ρ c (Proc.devRef .tc main_v31_2) : S32768x128.Idx → EReal) = arr2 below.rrep) :
    Region1.value (V3 m ρ) c = step 16384 15360 (by norm_num) (by norm_num) (Em m c) (lmm m c) (rmm m c) (pm m c) below := by
  unfold Region1.value step
  rw [E4_eq m ρ c, lm4_eq m ρ c, rm4_eq m ρ c, mlp4_eq m ρ c, kids4_rep m ρ c below.rep h0,
    kids4_lrep m ρ c below.lrep h1, kids4_rrep m ρ c below.rrep h2]

theorem level4_eq
    (hbelow : (W2 m ρ c (Proc.devRef .tc main_v31_0) : S32768x128.Idx → EReal) = arr2 (level5 (Em m c) (pm m c)).rep
      ∧ (W2 m ρ c (Proc.devRef .tc main_v31_1) : S32768x128.Idx → EReal) = arr2 (level5 (Em m c) (pm m c)).lrep
      ∧ (W2 m ρ c (Proc.devRef .tc main_v31_2) : S32768x128.Idx → EReal) = arr2 (level5 (Em m c) (pm m c)).rrep) :
    (W4 m ρ c (Proc.devRef .tc main_v42_0) : S16384x128.Idx → EReal) = arr2 (level4 (Em m c) (lmm m c) (rmm m c) (pm m c)).rep
      ∧ (W4 m ρ c (Proc.devRef .tc main_v42_1) : S16384x128.Idx → EReal) = arr2 (level4 (Em m c) (lmm m c) (rmm m c) (pm m c)).lrep
      ∧ (W4 m ρ c (Proc.devRef .tc main_v42_2) : S16384x128.Idx → EReal) = arr2 (level4 (Em m c) (lmm m c) (rmm m c) (pm m c)).rrep := by
  have hv := value4_eq m ρ c _ hbelow.1 hbelow.2.1 hbelow.2.2
  refine ⟨?_, ?_, ?_⟩
  · exact ((W4_arr m ρ c 25).trans (Region1.rep_eq (V3 m ρ) c)).trans (congrArg (fun v : Carry 16384 => arr2 v.rep) hv)
  · exact ((W4_arr m ρ c 26).trans (Region1.lrep_eq (V3 m ρ) c)).trans (congrArg (fun v : Carry 16384 => arr2 v.lrep) hv)
  · exact ((W4_arr m ρ c 27).trans (Region1.rrep_eq (V3 m ρ) c)).trans (congrArg (fun v : Carry 16384 => arr2 v.rrep) hv)

end Cert.KernelIdeal.Chain

end
-- ==== Proof.KHost2.lean ====
import proofs.«410031_j84061099917532_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host2

open Cert.KernelIdeal Cert.KernelIdeal.Gen Idealize.ShloMosaic Idealize.ShloMosaic.TcCoe Idealize.ShloMosaic.ValueIdx
open Idealize.ShloMosaic.StableHlo

section Contents

variable (V : Valuation τ sig (Elt Ideal))

theorem v43_term : (StableHlo.after (hostOps2 (F := Ideal)) V (Proc.devRef .tc main_v43) : S8192x2x128.Idx → EReal) =
    shapeCast S8192x2x128 (V (Proc.devRef .tc main_v42_0) : S16384x128.Idx → EReal) Facts₀.shapeCasts_S16384x128_S8192x2x128 := by
  after_results; rfl

theorem v43_at (i : Fin 8192) (s : Fin 2) (j : Fin 128) :
    (StableHlo.after (hostOps2 (F := Ideal)) V (Proc.devRef .tc main_v43) : S8192x2x128.Idx → EReal) (ix3 i s j) =
      (V (Proc.devRef .tc main_v42_0) : S16384x128.Idx → EReal) (ix2 ⟨2 * i.val + s.val, by omega⟩ j) := by
  rw [v43_term]
  exact shapeCast_apply (s := S16384x128) (t := S8192x2x128) _ _ _ _ (by
    rw [Shape.rowMajor_val_three, Shape.rowMajor_val_two]
    show (2 * i.val + s.val) * 128 + j.val = (i.val * 2 + s.val) * 128 + j.val
    omega)

theorem v44_term : (StableHlo.after (hostOps2 (F := Ideal)) V (Proc.devRef .tc main_v44) : S8192x2x128.Idx → EReal) =
    shapeCast S8192x2x128 (V (Proc.devRef .tc main_v42_1) : S16384x128.Idx → EReal) Facts₀.shapeCasts_S16384x128_S8192x2x128 := by
  after_results; rfl

theorem v44_at (i : Fin 8192) (s : Fin 2) (j : Fin 128) :
    (StableHlo.after (hostOps2 (F := Ideal)) V (Proc.devRef .tc main_v44) : S8192x2x128.Idx → EReal) (ix3 i s j) =
      (V (Proc.devRef .tc main_v42_1) : S16384x128.Idx → EReal) (ix2 ⟨2 * i.val + s.val, by omega⟩ j) := by
  rw [v44_term]
  exact shapeCast_apply (s := S16384x128) (t := S8192x2x128) _ _ _ _ (by
    rw [Shape.rowMajor_val_three, Shape.rowMajor_val_two]
    show (2 * i.val + s.val) * 128 + j.val = (i.val * 2 + s.val) * 128 + j.val
    omega)

theorem v45_term : (StableHlo.after (hostOps2 (F := Ideal)) V (Proc.devRef .tc main_v45) : S8192x2x128.Idx → EReal) =
    shapeCast S8192x2x128 (V (Proc.devRef .tc main_v42_2) : S16384x128.Idx → EReal) Facts₀.shapeCasts_S16384x128_S8192x2x128 := by
  after_results; rfl

theorem v45_at (i : Fin 8192) (s : Fin 2) (j : Fin 128) :
    (StableHlo.after (hostOps2 (F := Ideal)) V (Proc.devRef .tc main_v45) : S8192x2x128.Idx → EReal) (ix3 i s j) =
      (V (Proc.devRef .tc main_v42_2) : S16384x128.Idx → EReal) (ix2 ⟨2 * i.val + s.val, by omega⟩ j) := by
  rw [v45_term]
  exact shapeCast_apply (s := S16384x128) (t := S8192x2x128) _ _ _ _ (by
    rw [Shape.rowMajor_val_three, Shape.rowMajor_val_two]
    show (2 * i.val + s.val) * 128 + j.val = (i.val * 2 + s.val) * 128 + j.val
    omega)

theorem v46_term : (StableHlo.after (hostOps2 (F := Ideal)) V (Proc.devRef .tc main_v46) : S1x128.Idx → EReal) =
    shapeCast S1x128 (V (Proc.devRef .tc main_arg9) : S128.Idx → EReal) Facts₀.shapeCasts_S128_S1x128 := by
  after_results; rfl

theorem v46_at (j : Fin 128) :
    (StableHlo.after (hostOps2 (F := Ideal)) V (Proc.devRef .tc main_v46) : S1x128.Idx → EReal) (ix2 0 j) =
      (V (Proc.devRef .tc main_arg9) : S128.Idx → EReal) (ix1 j) := by
  rw [v46_term]
  exact shapeCast_a_1a_apply (a := 128) _ _ 0 j

theorem v47_term : (StableHlo.after (hostOps2 (F := Ideal)) V (Proc.devRef .tc main_v47) : S1x128.Idx → EReal) =
    shapeCast S1x128 (V (Proc.devRef .tc main_arg11) : S128.Idx → EReal) Facts₀.shapeCasts_S128_S1x128 := by
  after_results; rfl

theorem v47_at (j : Fin 128) :
    (StableHlo.after (hostOps2 (F := Ideal)) V (Proc.devRef .tc main_v47) : S1x128.Idx → EReal) (ix2 0 j) =
      (V (Proc.devRef .tc main_arg11) : S128.Idx → EReal) (ix1 j) := by
  rw [v47_term]
  exact shapeCast_a_1a_apply (a := 128) _ _ 0 j

theorem v48_term : (StableHlo.after (hostOps2 (F := Ideal)) V (Proc.devRef .tc main_v48) : S1x128.Idx → EReal) =
    shapeCast S1x128 (V (Proc.devRef .tc main_arg13) : S128.Idx → EReal) Facts₀.shapeCasts_S128_S1x128 := by
  after_results; rfl

theorem v48_at (j : Fin 128) :
    (StableHlo.after (hostOps2 (F := Ideal)) V (Proc.devRef .tc main_v48) : S1x128.Idx → EReal) (ix2 0 j) =
      (V (Proc.devRef .tc main_arg13) : S128.Idx → EReal) (ix1 j) := by
  rw [v48_term]
  exact shapeCast_a_1a_apply (a := 128) _ _ 0 j

theorem v49_term : (StableHlo.after (hostOps2 (F := Ideal)) V (Proc.devRef .tc main_v49) : S1x128.Idx → EReal) =
    shapeCast S1x128 (V (Proc.devRef .tc main_arg15) : S128.Idx → EReal) Facts₀.shapeCasts_S128_S1x128 := by
  after_results; rfl

theorem v49_at (j : Fin 128) :
    (StableHlo.after (hostOps2 (F := Ideal)) V (Proc.devRef .tc main_v49) : S1x128.Idx → EReal) (ix2 0 j) =
      (V (Proc.devRef .tc main_arg15) : S128.Idx → EReal) (ix1 j) := by
  rw [v49_term]
  exact shapeCast_a_1a_apply (a := 128) _ _ 0 j

theorem v50_term : (StableHlo.after (hostOps2 (F := Ideal)) V (Proc.devRef .tc main_v50) : S1x512.Idx → EReal) =
    shapeCast S1x512 (V (Proc.devRef .tc main_arg17) : S512.Idx → EReal) Facts₀.shapeCasts_S512_S1x512 := by
  after_results; rfl

theorem v50_at (j : Fin 512) :
    (StableHlo.after (hostOps2 (F := Ideal)) V (Proc.devRef .tc main_v50) : S1x512.Idx → EReal) (ix2 0 j) =
      (V (Proc.devRef .tc main_arg17) : S512.Idx → EReal) (ix1 j) := by
  rw [v50_term]
  exact shapeCast_a_1a_apply (a := 512) _ _ 0 j

theorem v51_term : (StableHlo.after (hostOps2 (F := Ideal)) V (Proc.devRef .tc main_v51) : S1x256.Idx → EReal) =
    shapeCast S1x256 (V (Proc.devRef .tc main_arg19) : S256.Idx → EReal) Facts₀.shapeCasts_S256_S1x256 := by
  after_results; rfl

theorem v51_at (j : Fin 256) :
    (StableHlo.after (hostOps2 (F := Ideal)) V (Proc.devRef .tc main_v51) : S1x256.Idx → EReal) (ix2 0 j) =
      (V (Proc.devRef .tc main_arg19) : S256.Idx → EReal) (ix1 j) := by
  rw [v51_term]
  exact shapeCast_a_1a_apply (a := 256) _ _ 0 j

theorem v52_term : (StableHlo.after (hostOps2 (F := Ideal)) V (Proc.devRef .tc main_v52) : S1x128.Idx → EReal) =
    shapeCast S1x128 (V (Proc.devRef .tc main_arg21) : S128.Idx → EReal) Facts₀.shapeCasts_S128_S1x128 := by
  after_results; rfl

theorem v52_at (j : Fin 128) :
    (StableHlo.after (hostOps2 (F := Ideal)) V (Proc.devRef .tc main_v52) : S1x128.Idx → EReal) (ix2 0 j) =
      (V (Proc.devRef .tc main_arg21) : S128.Idx → EReal) (ix1 j) := by
  rw [v52_term]
  exact shapeCast_a_1a_apply (a := 128) _ _ 0 j

end Contents

variable (m : (ℓ : Loc nD τ sig) → Buf (Elt Ideal) ℓ) (ρ : Dev nD → PrngReg) (c : Dev nD)

theorem v43_apply (i : Fin 8192) (s : Fin 2) (j : Fin 128) :
    (W5 m ρ c (Proc.devRef .tc main_v43) : S8192x2x128.Idx → EReal) (ix3 i s j) =
      (W4 m ρ c (Proc.devRef .tc main_v42_0) : S16384x128.Idx → EReal) (ix2 ⟨2 * i.val + s.val, by omega⟩ j) :=
  v43_at (W4 m ρ c) i s j

theorem v44_apply (i : Fin 8192) (s : Fin 2) (j : Fin 128) :
    (W5 m ρ c (Proc.devRef .tc main_v44) : S8192x2x128.Idx → EReal) (ix3 i s j) =
      (W4 m ρ c (Proc.devRef .tc main_v42_1) : S16384x128.Idx → EReal) (ix2 ⟨2 * i.val + s.val, by omega⟩ j) :=
  v44_at (W4 m ρ c) i s j

theorem v45_apply (i : Fin 8192) (s : Fin 2) (j : Fin 128) :
    (W5 m ρ c (Proc.devRef .tc main_v45) : S8192x2x128.Idx → EReal) (ix3 i s j) =
      (W4 m ρ c (Proc.devRef .tc main_v42_2) : S16384x128.Idx → EReal) (ix2 ⟨2 * i.val + s.val, by omega⟩ j) :=
  v45_at (W4 m ρ c) i s j

theorem v46_apply (j : Fin 128) :
    (W5 m ρ c (Proc.devRef .tc main_v46) : S1x128.Idx → EReal) (ix2 0 j) =
      (W4 m ρ c (Proc.devRef .tc main_arg9) : S128.Idx → EReal) (ix1 j) :=
  v46_at (W4 m ρ c) j

theorem v47_apply (j : Fin 128) :
    (W5 m ρ c (Proc.devRef .tc main_v47) : S1x128.Idx → EReal) (ix2 0 j) =
      (W4 m ρ c (Proc.devRef .tc main_arg11) : S128.Idx → EReal) (ix1 j) :=
  v47_at (W4 m ρ c) j

theorem v48_apply (j : Fin 128) :
    (W5 m ρ c (Proc.devRef .tc main_v48) : S1x128.Idx → EReal) (ix2 0 j) =
      (W4 m ρ c (Proc.devRef .tc main_arg13) : S128.Idx → EReal) (ix1 j) :=
  v48_at (W4 m ρ c) j

theorem v49_apply (j : Fin 128) :
    (W5 m ρ c (Proc.devRef .tc main_v49) : S1x128.Idx → EReal) (ix2 0 j) =
      (W4 m ρ c (Proc.devRef .tc main_arg15) : S128.Idx → EReal) (ix1 j) :=
  v49_at (W4 m ρ c) j

theorem v50_apply (j : Fin 512) :
    (W5 m ρ c (Proc.devRef .tc main_v50) : S1x512.Idx → EReal) (ix2 0 j) =
      (W4 m ρ c (Proc.devRef .tc main_arg17) : S512.Idx → EReal) (ix1 j) :=
  v50_at (W4 m ρ c) j

theorem v51_apply (j : Fin 256) :
    (W5 m ρ c (Proc.devRef .tc main_v51) : S1x256.Idx → EReal) (ix2 0 j) =
      (W4 m ρ c (Proc.devRef .tc main_arg19) : S256.Idx → EReal) (ix1 j) :=
  v51_at (W4 m ρ c) j

theorem v52_apply (j : Fin 128) :
    (W5 m ρ c (Proc.devRef .tc main_v52) : S1x128.Idx → EReal) (ix2 0 j) =
      (W4 m ρ c (Proc.devRef .tc main_arg21) : S128.Idx → EReal) (ix1 j) :=
  v52_at (W4 m ρ c) j

end Cert.KernelIdeal.Host2
-- ==== Proof.R2Out.lean ====
import proofs.«410031_j84061099917532_3_alg».proof.Proof.Gen.KernelIdeal.Frame
import proofs.«410031_j84061099917532_3_alg».proof.Proof.R1Tile
import Idealize.ShloMosaic.Lib.Pipeline.Value
import Idealize.ShloMosaic.Lib.ValueIdx

noncomputable section

open Idealize.ShloMosaic Idealize.ShloMosaic.TcCoe Idealize.SL.Sem
open TreeNN ValueIdx

namespace Cert.KernelIdeal.Region2

open Cert.KernelIdeal Cert.KernelIdeal.Gen

theorem blockIdx0 : ∀ t : Fin cfg2.N, win2_0.index t (0 : Fin 2) = 7 + t.val ∧ win2_0.index t (1 : Fin 2) = 0 :=
  (by decide +kernel : ∀ t : Fin grid2.N, _)
theorem blockIdx1 : ∀ t : Fin cfg2.N, win2_1.index t (0 : Fin 2) = 7 + t.val ∧ win2_1.index t (1 : Fin 2) = 0 :=
  (by decide +kernel : ∀ t : Fin grid2.N, _)
theorem blockIdx2 : ∀ t : Fin cfg2.N, win2_2.index t (0 : Fin 2) = 7 + t.val ∧ win2_2.index t (1 : Fin 2) = 0 :=
  (by decide +kernel : ∀ t : Fin grid2.N, _)
theorem blockIdx3 : ∀ t : Fin cfg2.N, win2_3.index t (0 : Fin 2) = 7 + t.val ∧ win2_3.index t (1 : Fin 2) = 0 :=
  (by decide +kernel : ∀ t : Fin grid2.N, _)
theorem blockIdx4 : ∀ t : Fin cfg2.N, win2_4.index t (0 : Fin 2) = 7 + t.val ∧ win2_4.index t (1 : Fin 2) = 0 :=
  (by decide +kernel : ∀ t : Fin grid2.N, _)
theorem blockIdx5 : ∀ t : Fin cfg2.N, win2_5.index t (0 : Fin 2) = 7 + t.val ∧ win2_5.index t (1 : Fin 2) = 0 :=
  (by decide +kernel : ∀ t : Fin grid2.N, _)
theorem blockIdx6 : ∀ t : Fin cfg2.N, win2_6.index t (0 : Fin 2) = 7 + t.val ∧ win2_6.index t (1 : Fin 2) = 0 :=
  (by decide +kernel : ∀ t : Fin grid2.N, _)
theorem blockIdx7 : ∀ t : Fin cfg2.N, win2_7.index t (0 : Fin 2) = 7 + t.val ∧ win2_7.index t (1 : Fin 2) = 0 :=
  (by decide +kernel : ∀ t : Fin grid2.N, _)
theorem blockIdx8 : ∀ t : Fin cfg2.N, win2_8.index t (0 : Fin 3) = t.val ∧ win2_8.index t (1 : Fin 3) = 0 ∧ win2_8.index t (2 : Fin 3) = 0 :=
  (by decide +kernel : ∀ t : Fin grid2.N, _)
theorem blockIdx9 : ∀ t : Fin cfg2.N, win2_9.index t (0 : Fin 3) = t.val ∧ win2_9.index t (1 : Fin 3) = 0 ∧ win2_9.index t (2 : Fin 3) = 0 :=
  (by decide +kernel : ∀ t : Fin grid2.N, _)
theorem blockIdx10 : ∀ t : Fin cfg2.N, win2_10.index t (0 : Fin 3) = t.val ∧ win2_10.index t (1 : Fin 3) = 0 ∧ win2_10.index t (2 : Fin 3) = 0 :=
  (by decide +kernel : ∀ t : Fin grid2.N, _)
theorem blockIdx11 : ∀ t : Fin cfg2.N, win2_11.index t (0 : Fin 2) = 0 ∧ win2_11.index t (1 : Fin 2) = 0 :=
  (by decide +kernel : ∀ t : Fin grid2.N, _)
theorem blockIdx12 : ∀ t : Fin cfg2.N, win2_12.index t (0 : Fin 2) = 0 ∧ win2_12.index t (1 : Fin 2) = 0 :=
  (by decide +kernel : ∀ t : Fin grid2.N, _)
theorem blockIdx13 : ∀ t : Fin cfg2.N, win2_13.index t (0 : Fin 2) = 0 ∧ win2_13.index t (1 : Fin 2) = 0 :=
  (by decide +kernel : ∀ t : Fin grid2.N, _)
theorem blockIdx14 : ∀ t : Fin cfg2.N, win2_14.index t (0 : Fin 2) = 0 ∧ win2_14.index t (1 : Fin 2) = 0 :=
  (by decide +kernel : ∀ t : Fin grid2.N, _)
theorem blockIdx15 : ∀ t : Fin cfg2.N, win2_15.index t (0 : Fin 2) = 0 ∧ win2_15.index t (1 : Fin 2) = 0 :=
  (by decide +kernel : ∀ t : Fin grid2.N, _)
theorem blockIdx16 : ∀ t : Fin cfg2.N, win2_16.index t (0 : Fin 2) = 0 ∧ win2_16.index t (1 : Fin 2) = 0 :=
  (by decide +kernel : ∀ t : Fin grid2.N, _)
theorem blockIdx17 : ∀ t : Fin cfg2.N, win2_17.index t (0 : Fin 2) = 0 ∧ win2_17.index t (1 : Fin 2) = 0 :=
  (by decide +kernel : ∀ t : Fin grid2.N, _)
theorem blockIdx18 : ∀ t : Fin cfg2.N, win2_18.index t (0 : Fin 2) = 0 ∧ win2_18.index t (1 : Fin 2) = 0 :=
  (by decide +kernel : ∀ t : Fin grid2.N, _)
theorem blockIdx19 : ∀ t : Fin cfg2.N, win2_19.index t (0 : Fin 2) = 0 ∧ win2_19.index t (1 : Fin 2) = 0 :=
  (by decide +kernel : ∀ t : Fin grid2.N, _)
theorem blockIdx20 : ∀ t : Fin cfg2.N, win2_20.index t (0 : Fin 2) = 0 ∧ win2_20.index t (1 : Fin 2) = 0 :=
  (by decide +kernel : ∀ t : Fin grid2.N, _)
theorem blockIdx21 : ∀ t : Fin cfg2.N, win2_21.index t (0 : Fin 2) = 0 ∧ win2_21.index t (1 : Fin 2) = 0 :=
  (by decide +kernel : ∀ t : Fin grid2.N, _)
theorem blockIdx22 : ∀ t : Fin cfg2.N, win2_22.index t (0 : Fin 2) = 0 ∧ win2_22.index t (1 : Fin 2) = 0 :=
  (by decide +kernel : ∀ t : Fin grid2.N, _)
theorem blockIdx23 : ∀ t : Fin cfg2.N, win2_23.index t (0 : Fin 2) = 0 ∧ win2_23.index t (1 : Fin 2) = 0 :=
  (by decide +kernel : ∀ t : Fin grid2.N, _)
theorem blockIdx24 : ∀ t : Fin cfg2.N, win2_24.index t (0 : Fin 2) = 0 ∧ win2_24.index t (1 : Fin 2) = 0 :=
  (by decide +kernel : ∀ t : Fin grid2.N, _)
theorem blockIdx25 : ∀ t : Fin cfg2.N, win2_25.index t (0 : Fin 2) = t.val ∧ win2_25.index t (1 : Fin 2) = 0 :=
  (by decide +kernel : ∀ t : Fin grid2.N, _)
theorem blockIdx26 : ∀ t : Fin cfg2.N, win2_26.index t (0 : Fin 2) = t.val ∧ win2_26.index t (1 : Fin 2) = 0 :=
  (by decide +kernel : ∀ t : Fin grid2.N, _)
theorem blockIdx27 : ∀ t : Fin cfg2.N, win2_27.index t (0 : Fin 2) = t.val ∧ win2_27.index t (1 : Fin 2) = 0 :=
  (by decide +kernel : ∀ t : Fin grid2.N, _)

theorem block0_apply (A : S64512x32.Idx → EReal) (t : Fin cfg2.N) (r : Fin 1024) (q : Fin 32) (k : Fin 64512)
    (hk : k.val = 1024 * (7 + t.val) + r.val) :
    ((cfg2.win 0).blk t).view.read (Elt Ideal) A (ix2 r q) = A (ix2 k q) := by
  rw [View.read_apply]
  show A _ = A _
  congr 1
  funext a
  apply Fin.ext
  match a with
  | ⟨0, _⟩ => show win2_0.index t (0 : Fin 2) * 1024 + 1 * r.val = k.val; rw [(blockIdx0 t).1, hk]; omega
  | ⟨1, _⟩ => show win2_0.index t (1 : Fin 2) * 32 + 1 * q.val = q.val; rw [(blockIdx0 t).2]; omega

theorem block1_apply (A : S64512x32.Idx → EReal) (t : Fin cfg2.N) (r : Fin 1024) (q : Fin 32) (k : Fin 64512)
    (hk : k.val = 1024 * (7 + t.val) + r.val) :
    ((cfg2.win 1).blk t).view.read (Elt Ideal) A (ix2 r q) = A (ix2 k q) := by
  rw [View.read_apply]
  show A _ = A _
  congr 1
  funext a
  apply Fin.ext
  match a with
  | ⟨0, _⟩ => show win2_1.index t (0 : Fin 2) * 1024 + 1 * r.val = k.val; rw [(blockIdx1 t).1, hk]; omega
  | ⟨1, _⟩ => show win2_1.index t (1 : Fin 2) * 32 + 1 * q.val = q.val; rw [(blockIdx1 t).2]; omega

theorem block2_apply (A : S64512x1000.Idx → EReal) (t : Fin cfg2.N) (r : Fin 1024) (q : Fin 1000) (k : Fin 64512)
    (hk : k.val = 1024 * (7 + t.val) + r.val) :
    ((cfg2.win 2).blk t).view.read (Elt Ideal) A (ix2 r q) = A (ix2 k q) := by
  rw [View.read_apply]
  show A _ = A _
  congr 1
  funext a
  apply Fin.ext
  match a with
  | ⟨0, _⟩ => show win2_2.index t (0 : Fin 2) * 1024 + 1 * r.val = k.val; rw [(blockIdx2 t).1, hk]; omega
  | ⟨1, _⟩ => show win2_2.index t (1 : Fin 2) * 1000 + 1 * q.val = q.val; rw [(blockIdx2 t).2]; omega

theorem block3_apply (A : S64512x256.Idx → EReal) (t : Fin cfg2.N) (r : Fin 1024) (q : Fin 256) (k : Fin 64512)
    (hk : k.val = 1024 * (7 + t.val) + r.val) :
    ((cfg2.win 3).blk t).view.read (Elt Ideal) A (ix2 r q) = A (ix2 k q) := by
  rw [View.read_apply]
  show A _ = A _
  congr 1
  funext a
  apply Fin.ext
  match a with
  | ⟨0, _⟩ => show win2_3.index t (0 : Fin 2) * 1024 + 1 * r.val = k.val; rw [(blockIdx3 t).1, hk]; omega
  | ⟨1, _⟩ => show win2_3.index t (1 : Fin 2) * 256 + 1 * q.val = q.val; rw [(blockIdx3 t).2]; omega

theorem block4_apply (A : S64512x256.Idx → EReal) (t : Fin cfg2.N) (r : Fin 1024) (q : Fin 256) (k : Fin 64512)
    (hk : k.val = 1024 * (7 + t.val) + r.val) :
    ((cfg2.win 4).blk t).view.read (Elt Ideal) A (ix2 r q) = A (ix2 k q) := by
  rw [View.read_apply]
  show A _ = A _
  congr 1
  funext a
  apply Fin.ext
  match a with
  | ⟨0, _⟩ => show win2_4.index t (0 : Fin 2) * 1024 + 1 * r.val = k.val; rw [(blockIdx4 t).1, hk]; omega
  | ⟨1, _⟩ => show win2_4.index t (1 : Fin 2) * 256 + 1 * q.val = q.val; rw [(blockIdx4 t).2]; omega

theorem block5_apply (A : S64512x1.Idx → EReal) (t : Fin cfg2.N) (r : Fin 1024) (q : Fin 1) (k : Fin 64512)
    (hk : k.val = 1024 * (7 + t.val) + r.val) :
    ((cfg2.win 5).blk t).view.read (Elt Ideal) A (ix2 r q) = A (ix2 k q) := by
  rw [View.read_apply]
  show A _ = A _
  congr 1
  funext a
  apply Fin.ext
  match a with
  | ⟨0, _⟩ => show win2_5.index t (0 : Fin 2) * 1024 + 1 * r.val = k.val; rw [(blockIdx5 t).1, hk]; omega
  | ⟨1, _⟩ => show win2_5.index t (1 : Fin 2) * 1 + 1 * q.val = q.val; rw [(blockIdx5 t).2]; omega

theorem block6_apply (A : S64512x1.Idx → EReal) (t : Fin cfg2.N) (r : Fin 1024) (q : Fin 1) (k : Fin 64512)
    (hk : k.val = 1024 * (7 + t.val) + r.val) :
    ((cfg2.win 6).blk t).view.read (Elt Ideal) A (ix2 r q) = A (ix2 k q) := by
  rw [View.read_apply]
  show A _ = A _
  congr 1
  funext a
  apply Fin.ext
  match a with
  | ⟨0, _⟩ => show win2_6.index t (0 : Fin 2) * 1024 + 1 * r.val = k.val; rw [(blockIdx6 t).1, hk]; omega
  | ⟨1, _⟩ => show win2_6.index t (1 : Fin 2) * 1 + 1 * q.val = q.val; rw [(blockIdx6 t).2]; omega

theorem block7_apply (A : S64512x1.Idx → EReal) (t : Fin cfg2.N) (r : Fin 1024) (q : Fin 1) (k : Fin 64512)
    (hk : k.val = 1024 * (7 + t.val) + r.val) :
    ((cfg2.win 7).blk t).view.read (Elt Ideal) A (ix2 r q) = A (ix2 k q) := by
  rw [View.read_apply]
  show A _ = A _
  congr 1
  funext a
  apply Fin.ext
  match a with
  | ⟨0, _⟩ => show win2_7.index t (0 : Fin 2) * 1024 + 1 * r.val = k.val; rw [(blockIdx7 t).1, hk]; omega
  | ⟨1, _⟩ => show win2_7.index t (1 : Fin 2) * 1 + 1 * q.val = q.val; rw [(blockIdx7 t).2]; omega

theorem block8_apply (A : S8192x2x128.Idx → EReal) (t : Fin cfg2.N) (r : Fin 1024) (s : Fin 2) (q : Fin 128) (i : Fin 8192)
    (hi : i.val = 1024 * t.val + r.val) :
    ((cfg2.win 8).blk t).view.read (Elt Ideal) A (ix3 r s q) = A (ix3 i s q) := by
  rw [View.read_apply]
  show A _ = A _
  congr 1
  funext a
  apply Fin.ext
  match a with
  | ⟨0, _⟩ => show win2_8.index t (0 : Fin 3) * 1024 + 1 * r.val = i.val; rw [(blockIdx8 t).1, hi]; omega
  | ⟨1, _⟩ => show win2_8.index t (1 : Fin 3) * 2 + 1 * s.val = s.val; rw [(blockIdx8 t).2.1]; omega
  | ⟨2, _⟩ => show win2_8.index t (2 : Fin 3) * 128 + 1 * q.val = q.val; rw [(blockIdx8 t).2.2]; omega

theorem block9_apply (A : S8192x2x128.Idx → EReal) (t : Fin cfg2.N) (r : Fin 1024) (s : Fin 2) (q : Fin 128) (i : Fin 8192)
    (hi : i.val = 1024 * t.val + r.val) :
    ((cfg2.win 9).blk t).view.read (Elt Ideal) A (ix3 r s q) = A (ix3 i s q) := by
  rw [View.read_apply]
  show A _ = A _
  congr 1
  funext a
  apply Fin.ext
  match a with
  | ⟨0, _⟩ => show win2_9.index t (0 : Fin 3) * 1024 + 1 * r.val = i.val; rw [(blockIdx9 t).1, hi]; omega
  | ⟨1, _⟩ => show win2_9.index t (1 : Fin 3) * 2 + 1 * s.val = s.val; rw [(blockIdx9 t).2.1]; omega
  | ⟨2, _⟩ => show win2_9.index t (2 : Fin 3) * 128 + 1 * q.val = q.val; rw [(blockIdx9 t).2.2]; omega

theorem block10_apply (A : S8192x2x128.Idx → EReal) (t : Fin cfg2.N) (r : Fin 1024) (s : Fin 2) (q : Fin 128) (i : Fin 8192)
    (hi : i.val = 1024 * t.val + r.val) :
    ((cfg2.win 10).blk t).view.read (Elt Ideal) A (ix3 r s q) = A (ix3 i s q) := by
  rw [View.read_apply]
  show A _ = A _
  congr 1
  funext a
  apply Fin.ext
  match a with
  | ⟨0, _⟩ => show win2_10.index t (0 : Fin 3) * 1024 + 1 * r.val = i.val; rw [(blockIdx10 t).1, hi]; omega
  | ⟨1, _⟩ => show win2_10.index t (1 : Fin 3) * 2 + 1 * s.val = s.val; rw [(blockIdx10 t).2.1]; omega
  | ⟨2, _⟩ => show win2_10.index t (2 : Fin 3) * 128 + 1 * q.val = q.val; rw [(blockIdx10 t).2.2]; omega

theorem block11_eq (A : S32x128.Idx → EReal) (t : Fin cfg2.N) :
    (((cfg2.win 11).blk t).view.read (Elt Ideal) A : S32x128.Idx → EReal) = A := by
  funext x
  rw [View.read_apply]
  show A _ = A _
  congr 1
  funext a
  apply Fin.ext
  match a with
  | ⟨0, _⟩ => show win2_11.index t (0 : Fin 2) * 32 + 1 * (x 0).val = (x 0).val; rw [(blockIdx11 t).1]; omega
  | ⟨1, _⟩ => show win2_11.index t (1 : Fin 2) * 128 + 1 * (x 1).val = (x 1).val; rw [(blockIdx11 t).2]; omega

theorem block12_eq (A : S1x128.Idx → EReal) (t : Fin cfg2.N) :
    (((cfg2.win 12).blk t).view.read (Elt Ideal) A : S1x128.Idx → EReal) = A := by
  funext x
  rw [View.read_apply]
  show A _ = A _
  congr 1
  funext a
  apply Fin.ext
  match a with
  | ⟨0, _⟩ => show win2_12.index t (0 : Fin 2) * 1 + 1 * (x 0).val = (x 0).val; rw [(blockIdx12 t).1]; omega
  | ⟨1, _⟩ => show win2_12.index t (1 : Fin 2) * 128 + 1 * (x 1).val = (x 1).val; rw [(blockIdx12 t).2]; omega

theorem block13_eq (A : S32x128.Idx → EReal) (t : Fin cfg2.N) :
    (((cfg2.win 13).blk t).view.read (Elt Ideal) A : S32x128.Idx → EReal) = A := by
  funext x
  rw [View.read_apply]
  show A _ = A _
  congr 1
  funext a
  apply Fin.ext
  match a with
  | ⟨0, _⟩ => show win2_13.index t (0 : Fin 2) * 32 + 1 * (x 0).val = (x 0).val; rw [(blockIdx13 t).1]; omega
  | ⟨1, _⟩ => show win2_13.index t (1 : Fin 2) * 128 + 1 * (x 1).val = (x 1).val; rw [(blockIdx13 t).2]; omega

theorem block14_eq (A : S1x128.Idx → EReal) (t : Fin cfg2.N) :
    (((cfg2.win 14).blk t).view.read (Elt Ideal) A : S1x128.Idx → EReal) = A := by
  funext x
  rw [View.read_apply]
  show A _ = A _
  congr 1
  funext a
  apply Fin.ext
  match a with
  | ⟨0, _⟩ => show win2_14.index t (0 : Fin 2) * 1 + 1 * (x 0).val = (x 0).val; rw [(blockIdx14 t).1]; omega
  | ⟨1, _⟩ => show win2_14.index t (1 : Fin 2) * 128 + 1 * (x 1).val = (x 1).val; rw [(blockIdx14 t).2]; omega

theorem block15_eq (A : S1000x128.Idx → EReal) (t : Fin cfg2.N) :
    (((cfg2.win 15).blk t).view.read (Elt Ideal) A : S1000x128.Idx → EReal) = A := by
  funext x
  rw [View.read_apply]
  show A _ = A _
  congr 1
  funext a
  apply Fin.ext
  match a with
  | ⟨0, _⟩ => show win2_15.index t (0 : Fin 2) * 1000 + 1 * (x 0).val = (x 0).val; rw [(blockIdx15 t).1]; omega
  | ⟨1, _⟩ => show win2_15.index t (1 : Fin 2) * 128 + 1 * (x 1).val = (x 1).val; rw [(blockIdx15 t).2]; omega

theorem block16_eq (A : S1x128.Idx → EReal) (t : Fin cfg2.N) :
    (((cfg2.win 16).blk t).view.read (Elt Ideal) A : S1x128.Idx → EReal) = A := by
  funext x
  rw [View.read_apply]
  show A _ = A _
  congr 1
  funext a
  apply Fin.ext
  match a with
  | ⟨0, _⟩ => show win2_16.index t (0 : Fin 2) * 1 + 1 * (x 0).val = (x 0).val; rw [(blockIdx16 t).1]; omega
  | ⟨1, _⟩ => show win2_16.index t (1 : Fin 2) * 128 + 1 * (x 1).val = (x 1).val; rw [(blockIdx16 t).2]; omega

theorem block17_eq (A : S256x512.Idx → EReal) (t : Fin cfg2.N) :
    (((cfg2.win 17).blk t).view.read (Elt Ideal) A : S256x512.Idx → EReal) = A := by
  funext x
  rw [View.read_apply]
  show A _ = A _
  congr 1
  funext a
  apply Fin.ext
  match a with
  | ⟨0, _⟩ => show win2_17.index t (0 : Fin 2) * 256 + 1 * (x 0).val = (x 0).val; rw [(blockIdx17 t).1]; omega
  | ⟨1, _⟩ => show win2_17.index t (1 : Fin 2) * 512 + 1 * (x 1).val = (x 1).val; rw [(blockIdx17 t).2]; omega

theorem block18_eq (A : S1x128.Idx → EReal) (t : Fin cfg2.N) :
    (((cfg2.win 18).blk t).view.read (Elt Ideal) A : S1x128.Idx → EReal) = A := by
  funext x
  rw [View.read_apply]
  show A _ = A _
  congr 1
  funext a
  apply Fin.ext
  match a with
  | ⟨0, _⟩ => show win2_18.index t (0 : Fin 2) * 1 + 1 * (x 0).val = (x 0).val; rw [(blockIdx18 t).1]; omega
  | ⟨1, _⟩ => show win2_18.index t (1 : Fin 2) * 128 + 1 * (x 1).val = (x 1).val; rw [(blockIdx18 t).2]; omega

theorem block19_eq (A : S1408x512.Idx → EReal) (t : Fin cfg2.N) :
    (((cfg2.win 19).blk t).view.read (Elt Ideal) A : S1408x512.Idx → EReal) = A := by
  funext x
  rw [View.read_apply]
  show A _ = A _
  congr 1
  funext a
  apply Fin.ext
  match a with
  | ⟨0, _⟩ => show win2_19.index t (0 : Fin 2) * 1408 + 1 * (x 0).val = (x 0).val; rw [(blockIdx19 t).1]; omega
  | ⟨1, _⟩ => show win2_19.index t (1 : Fin 2) * 512 + 1 * (x 1).val = (x 1).val; rw [(blockIdx19 t).2]; omega

theorem block20_eq (A : S1x512.Idx → EReal) (t : Fin cfg2.N) :
    (((cfg2.win 20).blk t).view.read (Elt Ideal) A : S1x512.Idx → EReal) = A := by
  funext x
  rw [View.read_apply]
  show A _ = A _
  congr 1
  funext a
  apply Fin.ext
  match a with
  | ⟨0, _⟩ => show win2_20.index t (0 : Fin 2) * 1 + 1 * (x 0).val = (x 0).val; rw [(blockIdx20 t).1]; omega
  | ⟨1, _⟩ => show win2_20.index t (1 : Fin 2) * 512 + 1 * (x 1).val = (x 1).val; rw [(blockIdx20 t).2]; omega

theorem block21_eq (A : S512x256.Idx → EReal) (t : Fin cfg2.N) :
    (((cfg2.win 21).blk t).view.read (Elt Ideal) A : S512x256.Idx → EReal) = A := by
  funext x
  rw [View.read_apply]
  show A _ = A _
  congr 1
  funext a
  apply Fin.ext
  match a with
  | ⟨0, _⟩ => show win2_21.index t (0 : Fin 2) * 512 + 1 * (x 0).val = (x 0).val; rw [(blockIdx21 t).1]; omega
  | ⟨1, _⟩ => show win2_21.index t (1 : Fin 2) * 256 + 1 * (x 1).val = (x 1).val; rw [(blockIdx21 t).2]; omega

theorem block22_eq (A : S1x256.Idx → EReal) (t : Fin cfg2.N) :
    (((cfg2.win 22).blk t).view.read (Elt Ideal) A : S1x256.Idx → EReal) = A := by
  funext x
  rw [View.read_apply]
  show A _ = A _
  congr 1
  funext a
  apply Fin.ext
  match a with
  | ⟨0, _⟩ => show win2_22.index t (0 : Fin 2) * 1 + 1 * (x 0).val = (x 0).val; rw [(blockIdx22 t).1]; omega
  | ⟨1, _⟩ => show win2_22.index t (1 : Fin 2) * 256 + 1 * (x 1).val = (x 1).val; rw [(blockIdx22 t).2]; omega

theorem block23_eq (A : S256x128.Idx → EReal) (t : Fin cfg2.N) :
    (((cfg2.win 23).blk t).view.read (Elt Ideal) A : S256x128.Idx → EReal) = A := by
  funext x
  rw [View.read_apply]
  show A _ = A _
  congr 1
  funext a
  apply Fin.ext
  match a with
  | ⟨0, _⟩ => show win2_23.index t (0 : Fin 2) * 256 + 1 * (x 0).val = (x 0).val; rw [(blockIdx23 t).1]; omega
  | ⟨1, _⟩ => show win2_23.index t (1 : Fin 2) * 128 + 1 * (x 1).val = (x 1).val; rw [(blockIdx23 t).2]; omega

theorem block24_eq (A : S1x128.Idx → EReal) (t : Fin cfg2.N) :
    (((cfg2.win 24).blk t).view.read (Elt Ideal) A : S1x128.Idx → EReal) = A := by
  funext x
  rw [View.read_apply]
  show A _ = A _
  congr 1
  funext a
  apply Fin.ext
  match a with
  | ⟨0, _⟩ => show win2_24.index t (0 : Fin 2) * 1 + 1 * (x 0).val = (x 0).val; rw [(blockIdx24 t).1]; omega
  | ⟨1, _⟩ => show win2_24.index t (1 : Fin 2) * 128 + 1 * (x 1).val = (x 1).val; rw [(blockIdx24 t).2]; omega

theorem writeBack25_eq (X : S1024x128.Idx → EReal) (G : S8192x128.Idx → EReal) (t : Fin cfg2.N)
    (h : ∀ (r : Fin 1024) (j : Fin 128) (i : Fin 8192), i.val = 1024 * t.val + r.val → X (ix2 r j) = G (ix2 i j)) :
    (cfg2.win 25).cut (grid2.coords t) X = ((cfg2.win 25).blk t).view.read (Elt Ideal) G := by
  funext y
  rw [View.read_apply]
  show X ((cfg2.win 25).xinj (grid2.coords t) y) = G (((cfg2.win 25).blk t).view.emb y)
  have hy : (cfg2.win 25).xinj (grid2.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 8 := by have h := t.isLt; have e : cfg2.N = 8 := N_2; omega
  have he : ((cfg2.win 25).blk t).view.emb y = ix2 (⟨1024 * t.val + (y 0).val, by omega⟩ : Fin 8192) (⟨(y 1).val, (y 1).isLt⟩ : Fin 128) := by
    funext a
    apply Fin.ext
    match a with
    | ⟨0, _⟩ => show win2_25.index t (0 : Fin 2) * 1024 + 1 * (y 0).val = 1024 * t.val + (y 0).val; rw [(blockIdx25 t).1]; omega
    | ⟨1, _⟩ => show win2_25.index t (1 : Fin 2) * 128 + 1 * (y 1).val = (y 1).val; rw [(blockIdx25 t).2]; omega
  rw [hy, he]
  exact h _ _ _ rfl

theorem rowCover25 (c : Dev nD) (i : ((cfg2.win 25).arr.view.loc (c.tc : Thread nD τ)).2.ty.Idx) :
    ∃ t : Fin cfg2.N, (cfg2.win 25).flush t = true ∧ i ∈ ((cfg2.win 25).blk t).view.set := by
  have h0 : (i 0).val < 8192 := (i 0).isLt
  have h1 : (i 1).val < 128 := (i 1).isLt
  have hlt : (i 0).val / 1024 < cfg2.N := by show _ < grid2.N; rw [N_2]; omega
  refine ⟨⟨(i 0).val / 1024, hlt⟩, flush2_25 _, ?_⟩
  show i ∈ ((View.whole main_v53_0).slice (win2_25.rect ⟨(i 0).val / 1024, hlt⟩)).set
  rw [View.set_slice_whole, Rect.mem_set_unit]
  intro a
  match a with
  | ⟨0, _⟩ =>
    show win2_25.index ⟨(i 0).val / 1024, hlt⟩ (0 : Fin 2) * 1024 ≤ (i 0).val ∧ (i 0).val < win2_25.index ⟨(i 0).val / 1024, hlt⟩ (0 : Fin 2) * 1024 + 1024
    rw [(blockIdx25 _).1]; show (i 0).val / 1024 * 1024 ≤ _ ∧ _ < (i 0).val / 1024 * 1024 + 1024; omega
  | ⟨1, _⟩ =>
    show win2_25.index ⟨(i 0).val / 1024, hlt⟩ (1 : Fin 2) * 128 ≤ (i 1).val ∧ (i 1).val < win2_25.index ⟨(i 0).val / 1024, hlt⟩ (1 : Fin 2) * 128 + 128
    rw [(blockIdx25 _).2]; omega

theorem writeBack26_eq (X : S1024x128.Idx → EReal) (G : S8192x128.Idx → EReal) (t : Fin cfg2.N)
    (h : ∀ (r : Fin 1024) (j : Fin 128) (i : Fin 8192), i.val = 1024 * t.val + r.val → X (ix2 r j) = G (ix2 i j)) :
    (cfg2.win 26).cut (grid2.coords t) X = ((cfg2.win 26).blk t).view.read (Elt Ideal) G := by
  funext y
  rw [View.read_apply]
  show X ((cfg2.win 26).xinj (grid2.coords t) y) = G (((cfg2.win 26).blk t).view.emb y)
  have hy : (cfg2.win 26).xinj (grid2.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 8 := by have h := t.isLt; have e : cfg2.N = 8 := N_2; omega
  have he : ((cfg2.win 26).blk t).view.emb y = ix2 (⟨1024 * t.val + (y 0).val, by omega⟩ : Fin 8192) (⟨(y 1).val, (y 1).isLt⟩ : Fin 128) := by
    funext a
    apply Fin.ext
    match a with
    | ⟨0, _⟩ => show win2_26.index t (0 : Fin 2) * 1024 + 1 * (y 0).val = 1024 * t.val + (y 0).val; rw [(blockIdx26 t).1]; omega
    | ⟨1, _⟩ => show win2_26.index t (1 : Fin 2) * 128 + 1 * (y 1).val = (y 1).val; rw [(blockIdx26 t).2]; omega
  rw [hy, he]
  exact h _ _ _ rfl

theorem rowCover26 (c : Dev nD) (i : ((cfg2.win 26).arr.view.loc (c.tc : Thread nD τ)).2.ty.Idx) :
    ∃ t : Fin cfg2.N, (cfg2.win 26).flush t = true ∧ i ∈ ((cfg2.win 26).blk t).view.set := by
  have h0 : (i 0).val < 8192 := (i 0).isLt
  have h1 : (i 1).val < 128 := (i 1).isLt
  have hlt : (i 0).val / 1024 < cfg2.N := by show _ < grid2.N; rw [N_2]; omega
  refine ⟨⟨(i 0).val / 1024, hlt⟩, flush2_26 _, ?_⟩
  show i ∈ ((View.whole main_v53_1).slice (win2_26.rect ⟨(i 0).val / 1024, hlt⟩)).set
  rw [View.set_slice_whole, Rect.mem_set_unit]
  intro a
  match a with
  | ⟨0, _⟩ =>
    show win2_26.index ⟨(i 0).val / 1024, hlt⟩ (0 : Fin 2) * 1024 ≤ (i 0).val ∧ (i 0).val < win2_26.index ⟨(i 0).val / 1024, hlt⟩ (0 : Fin 2) * 1024 + 1024
    rw [(blockIdx26 _).1]; show (i 0).val / 1024 * 1024 ≤ _ ∧ _ < (i 0).val / 1024 * 1024 + 1024; omega
  | ⟨1, _⟩ =>
    show win2_26.index ⟨(i 0).val / 1024, hlt⟩ (1 : Fin 2) * 128 ≤ (i 1).val ∧ (i 1).val < win2_26.index ⟨(i 0).val / 1024, hlt⟩ (1 : Fin 2) * 128 + 128
    rw [(blockIdx26 _).2]; omega

theorem writeBack27_eq (X : S1024x128.Idx → EReal) (G : S8192x128.Idx → EReal) (t : Fin cfg2.N)
    (h : ∀ (r : Fin 1024) (j : Fin 128) (i : Fin 8192), i.val = 1024 * t.val + r.val → X (ix2 r j) = G (ix2 i j)) :
    (cfg2.win 27).cut (grid2.coords t) X = ((cfg2.win 27).blk t).view.read (Elt Ideal) G := by
  funext y
  rw [View.read_apply]
  show X ((cfg2.win 27).xinj (grid2.coords t) y) = G (((cfg2.win 27).blk t).view.emb y)
  have hy : (cfg2.win 27).xinj (grid2.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 8 := by have h := t.isLt; have e : cfg2.N = 8 := N_2; omega
  have he : ((cfg2.win 27).blk t).view.emb y = ix2 (⟨1024 * t.val + (y 0).val, by omega⟩ : Fin 8192) (⟨(y 1).val, (y 1).isLt⟩ : Fin 128) := by
    funext a
    apply Fin.ext
    match a with
    | ⟨0, _⟩ => show win2_27.index t (0 : Fin 2) * 1024 + 1 * (y 0).val = 1024 * t.val + (y 0).val; rw [(blockIdx27 t).1]; omega
    | ⟨1, _⟩ => show win2_27.index t (1 : Fin 2) * 128 + 1 * (y 1).val = (y 1).val; rw [(blockIdx27 t).2]; omega
  rw [hy, he]
  exact h _ _ _ rfl

theorem rowCover27 (c : Dev nD) (i : ((cfg2.win 27).arr.view.loc (c.tc : Thread nD τ)).2.ty.Idx) :
    ∃ t : Fin cfg2.N, (cfg2.win 27).flush t = true ∧ i ∈ ((cfg2.win 27).blk t).view.set := by
  have h0 : (i 0).val < 8192 := (i 0).isLt
  have h1 : (i 1).val < 128 := (i 1).isLt
  have hlt : (i 0).val / 1024 < cfg2.N := by show _ < grid2.N; rw [N_2]; omega
  refine ⟨⟨(i 0).val / 1024, hlt⟩, flush2_27 _, ?_⟩
  show i ∈ ((View.whole main_v53_2).slice (win2_27.rect ⟨(i 0).val / 1024, hlt⟩)).set
  rw [View.set_slice_whole, Rect.mem_set_unit]
  intro a
  match a with
  | ⟨0, _⟩ =>
    show win2_27.index ⟨(i 0).val / 1024, hlt⟩ (0 : Fin 2) * 1024 ≤ (i 0).val ∧ (i 0).val < win2_27.index ⟨(i 0).val / 1024, hlt⟩ (0 : Fin 2) * 1024 + 1024
    rw [(blockIdx27 _).1]; show (i 0).val / 1024 * 1024 ≤ _ ∧ _ < (i 0).val / 1024 * 1024 + 1024; omega
  | ⟨1, _⟩ =>
    show win2_27.index ⟨(i 0).val / 1024, hlt⟩ (1 : Fin 2) * 128 ≤ (i 1).val ∧ (i 1).val < win2_27.index ⟨(i 0).val / 1024, hlt⟩ (1 : Fin 2) * 128 + 128
    rw [(blockIdx27 _).2]; omega

theorem rep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A0 : S64512x32.Idx → EReal) (A1 : S64512x32.Idx → EReal) (A2 : S64512x1000.Idx → EReal) (A3 : S64512x256.Idx → EReal) (A4 : S64512x256.Idx → EReal) (A5 : S64512x1.Idx → EReal) (A6 : S64512x1.Idx → EReal) (A7 : S64512x1.Idx → EReal) (A8 : S8192x2x128.Idx → EReal) (A9 : S8192x2x128.Idx → EReal) (A10 : S8192x2x128.Idx → EReal) (A11 : S32x128.Idx → EReal) (A12 : S1x128.Idx → EReal) (A13 : S32x128.Idx → EReal) (A14 : S1x128.Idx → EReal) (A15 : S1000x128.Idx → EReal) (A16 : S1x128.Idx → EReal) (A17 : S256x512.Idx → EReal) (A18 : S1x128.Idx → EReal) (A19 : S1408x512.Idx → EReal) (A20 : S1x512.Idx → EReal) (A21 : S512x256.Idx → EReal) (A22 : S1x256.Idx → EReal) (A23 : S256x128.Idx → EReal) (A24 : S1x128.Idx → EReal)
    (r : Fin 1024) (j : Fin 128) (k : Fin 64512) (i : Fin 8192)
    (h0 : mat x0 r = mat A0 k) (h1 : mat x1 r = mat A1 k) (h2 : mat x2 r = mat A2 k) (h3 : mat x3 r = mat A3 k) (h4 : mat x4 r = mat A4 k) (h5 : col x5 r = col A5 k) (h6 : col x6 r = col A6 k) (h7 : col x7 r = col A7 k) (h8 : ten3 x8 r = ten3 A8 i) (h9 : ten3 x9 r = ten3 A9 i) (h10 : ten3 x10 r = ten3 A10 i) (h11 : x11 = A11) (h12 : x12 = A12) (h13 : x13 = A13) (h14 : x14 = A14) (h15 : x15 = A15) (h16 : x16 = A16) (h17 : x17 = A17) (h18 : x18 = A18) (h19 : x19 = A19) (h20 : x20 = A20) (h21 : x21 = A21) (h22 : x22 = A22) (h23 : x23 = A23) (h24 : x24 = A24) :
    out2_25 (F := Ideal) x0 x1 x2 x3 x4 x5 x6 x7 x8 x9 x10 x11 x12 x13 x14 x15 x16 x17 x18 x19 x20 x21 x22 x23 x24 (ix2 r j)
      = nodeRep (MLP3.ofTiles A19 A20 A21 A22 A23 A24)
          (embK (EmbW.ofTiles A11 A12 A13 A14 A15 A16 A18) (mat A17) (mat A0 k) (mat A1 k) (mat A2 k) (mat A3 k) (mat A4 k) (col A5 k))
          (col A6 k) (col A7 k) (ten3 A8 i) (ten3 A9 i) (ten3 A10 i) j := by
  subst h11 h12 h13 h14 h15 h16 h17 h18 h19 h20 h21 h22 h23 h24
  rw [show @out2_25 = @out1_25 from rfl, Region1.out25_apply, h0, h1, h2, h3, h4, h5, h6, h7, h8, h9, h10]

theorem lrep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A6 : S64512x1.Idx → EReal) (A8 : S8192x2x128.Idx → EReal)
    (r : Fin 1024) (j : Fin 128) (k : Fin 64512) (i : Fin 8192)
    (h6 : col x6 r = col A6 k) (h8 : ten3 x8 r = ten3 A8 i) :
    out2_26 (F := Ideal) x0 x1 x2 x3 x4 x5 x6 x7 x8 x9 x10 x11 x12 x13 x14 x15 x16 x17 x18 x19 x20 x21 x22 x23 x24 (ix2 r j) = ten3 A8 i 0 j * col A6 k := by
  rw [show @out2_26 = @out1_26 from rfl, Region1.out26_apply, h6, h8]

theorem rrep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A7 : S64512x1.Idx → EReal) (A8 : S8192x2x128.Idx → EReal)
    (r : Fin 1024) (j : Fin 128) (k : Fin 64512) (i : Fin 8192)
    (h7 : col x7 r = col A7 k) (h8 : ten3 x8 r = ten3 A8 i) :
    out2_27 (F := Ideal) x0 x1 x2 x3 x4 x5 x6 x7 x8 x9 x10 x11 x12 x13 x14 x15 x16 x17 x18 x19 x20 x21 x22 x23 x24 (ix2 r j) = ten3 A8 i 1 j * col A7 k := by
  rw [show @out2_27 = @out1_27 from rfl, Region1.out27_apply, h7, h8]

variable (V : (c : Dev nD) → (b : Ref sig .tc) → Buf (Elt Ideal) ((c : Thread nD τ).loc b)) (c : Dev nD)

def mlp : MLP3 :=
  MLP3.ofTiles (V c (Pipeline.arrRef spec2 19) : S1408x512.Idx → EReal) (V c (Pipeline.arrRef spec2 20) : S1x512.Idx → EReal)
    (V c (Pipeline.arrRef spec2 21) : S512x256.Idx → EReal) (V c (Pipeline.arrRef spec2 22) : S1x256.Idx → EReal)
    (V c (Pipeline.arrRef spec2 23) : S256x128.Idx → EReal) (V c (Pipeline.arrRef spec2 24) : S1x128.Idx → EReal)

def embW : EmbW :=
  EmbW.ofTiles (V c (Pipeline.arrRef spec2 11) : S32x128.Idx → EReal) (V c (Pipeline.arrRef spec2 12) : S1x128.Idx → EReal)
    (V c (Pipeline.arrRef spec2 13) : S32x128.Idx → EReal) (V c (Pipeline.arrRef spec2 14) : S1x128.Idx → EReal)
    (V c (Pipeline.arrRef spec2 15) : S1000x128.Idx → EReal) (V c (Pipeline.arrRef spec2 16) : S1x128.Idx → EReal)
    (V c (Pipeline.arrRef spec2 18) : S1x128.Idx → EReal)

def E : Fin 64512 → Fin 5 → Fin 128 → EReal := fun i =>
  embK (embW V c) (mat (V c (Pipeline.arrRef spec2 17) : S256x512.Idx → EReal))
    (mat (V c (Pipeline.arrRef spec2 0) : S64512x32.Idx → EReal) i) (mat (V c (Pipeline.arrRef spec2 1) : S64512x32.Idx → EReal) i)
    (mat (V c (Pipeline.arrRef spec2 2) : S64512x1000.Idx → EReal) i) (mat (V c (Pipeline.arrRef spec2 3) : S64512x256.Idx → EReal) i)
    (mat (V c (Pipeline.arrRef spec2 4) : S64512x256.Idx → EReal) i) (col (V c (Pipeline.arrRef spec2 5) : S64512x1.Idx → EReal) i)

def value : Carry 8192 :=
  stepK 8192 7168 (by norm_num) (E V c) (col (V c (Pipeline.arrRef spec2 6) : S64512x1.Idx → EReal))
    (col (V c (Pipeline.arrRef spec2 7) : S64512x1.Idx → EReal)) (mlp V c)
    (ten3 (V c (Pipeline.arrRef spec2 8) : S8192x2x128.Idx → EReal)) (ten3 (V c (Pipeline.arrRef spec2 9) : S8192x2x128.Idx → EReal))
    (ten3 (V c (Pipeline.arrRef spec2 10) : S8192x2x128.Idx → EReal))

theorem flushed25_eq (t : Fin cfg2.N) :
    (dat2 V c).flushed 25 t = ((cfg2.win 25).blk t).view.read (Elt Ideal) (arr2 (value V c).rep) := by
  show (cfg2.win 25).cut (grid2.coords t) ((dat2 V c).after 25 t) = _
  rw [after2_25]
  refine writeBack25_eq _ _ t fun r j i hi => ?_
  have hN : t.val < 8 := by have h := t.isLt; have e : cfg2.N = 8 := N_2; omega
  have hk : (⟨7168 + i.val, by omega⟩ : Fin 64512).val = 1024 * (7 + t.val) + r.val := by show 7168 + i.val = _; omega
  exact rep_point (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t)
    (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) (V c (Pipeline.arrRef spec2 13)) (V c (Pipeline.arrRef spec2 14)) (V c (Pipeline.arrRef spec2 15)) (V c (Pipeline.arrRef spec2 16)) (V c (Pipeline.arrRef spec2 17)) (V c (Pipeline.arrRef spec2 18)) (V c (Pipeline.arrRef spec2 19)) (V c (Pipeline.arrRef spec2 20)) (V c (Pipeline.arrRef spec2 21)) (V c (Pipeline.arrRef spec2 22)) (V c (Pipeline.arrRef spec2 23)) (V c (Pipeline.arrRef spec2 24))
    r j ⟨7168 + i.val, by omega⟩ i
    (funext fun q => block0_apply _ t r q _ hk)
    (funext fun q => block1_apply _ t r q _ hk)
    (funext fun q => block2_apply _ t r q _ hk)
    (funext fun q => block3_apply _ t r q _ hk)
    (funext fun q => block4_apply _ t r q _ hk)
    (block5_apply _ t r 0 _ hk)
    (block6_apply _ t r 0 _ hk)
    (block7_apply _ t r 0 _ hk)
    (funext fun s => funext fun q => block8_apply _ t r s q i hi)
    (funext fun s => funext fun q => block9_apply _ t r s q i hi)
    (funext fun s => funext fun q => block10_apply _ t r s q i hi)
    (block11_eq _ t)
    (block12_eq _ t)
    (block13_eq _ t)
    (block14_eq _ t)
    (block15_eq _ t)
    (block16_eq _ t)
    (block17_eq _ t)
    (block18_eq _ t)
    (block19_eq _ t)
    (block20_eq _ t)
    (block21_eq _ t)
    (block22_eq _ t)
    (block23_eq _ t)
    (block24_eq _ t)

theorem flushed26_eq (t : Fin cfg2.N) :
    (dat2 V c).flushed 26 t = ((cfg2.win 26).blk t).view.read (Elt Ideal) (arr2 (value V c).lrep) := by
  show (cfg2.win 26).cut (grid2.coords t) ((dat2 V c).after 26 t) = _
  rw [after2_26]
  refine writeBack26_eq _ _ t fun r j i hi => ?_
  have hN : t.val < 8 := by have h := t.isLt; have e : cfg2.N = 8 := N_2; omega
  have hk : (⟨7168 + i.val, by omega⟩ : Fin 64512).val = 1024 * (7 + t.val) + r.val := by show 7168 + i.val = _; omega
  exact lrep_point (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t)
    (V c (Pipeline.arrRef spec2 6)) (V c (Pipeline.arrRef spec2 8)) r j ⟨7168 + i.val, by omega⟩ i
    (block6_apply _ t r 0 _ hk) (funext fun s => funext fun q => block8_apply _ t r s q i hi)

theorem flushed27_eq (t : Fin cfg2.N) :
    (dat2 V c).flushed 27 t = ((cfg2.win 27).blk t).view.read (Elt Ideal) (arr2 (value V c).rrep) := by
  show (cfg2.win 27).cut (grid2.coords t) ((dat2 V c).after 27 t) = _
  rw [after2_27]
  refine writeBack27_eq _ _ t fun r j i hi => ?_
  have hN : t.val < 8 := by have h := t.isLt; have e : cfg2.N = 8 := N_2; omega
  have hk : (⟨7168 + i.val, by omega⟩ : Fin 64512).val = 1024 * (7 + t.val) + r.val := by show 7168 + i.val = _; omega
  exact rrep_point (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (iblk2 V c 17 t) (iblk2 V c 18 t) (iblk2 V c 19 t) (iblk2 V c 20 t) (iblk2 V c 21 t) (iblk2 V c 22 t) (iblk2 V c 23 t) (iblk2 V c 24 t)
    (V c (Pipeline.arrRef spec2 7)) (V c (Pipeline.arrRef spec2 8)) r j ⟨7168 + i.val, by omega⟩ i
    (block7_apply _ t r 0 _ hk) (funext fun s => funext fun q => block8_apply _ t r s q i hi)

theorem rep_eq : ((dat2 V c).arrAt 25 cfg2.N : S8192x128.Idx → EReal) = arr2 (value V c).rep := by
  exact (dat2 V c).arrAt_eq_of_cover 25 (arr2 (value V c).rep) (fun t _ => flushed25_eq V c t) (rowCover25 c)

theorem lrep_eq : ((dat2 V c).arrAt 26 cfg2.N : S8192x128.Idx → EReal) = arr2 (value V c).lrep := by
  exact (dat2 V c).arrAt_eq_of_cover 26 (arr2 (value V c).lrep) (fun t _ => flushed26_eq V c t) (rowCover26 c)

theorem rrep_eq : ((dat2 V c).arrAt 27 cfg2.N : S8192x128.Idx → EReal) = arr2 (value V c).rrep := by
  exact (dat2 V c).arrAt_eq_of_cover 27 (arr2 (value V c).rrep) (fun t _ => flushed27_eq V c t) (rowCover27 c)

end Cert.KernelIdeal.Region2

end
-- ==== Proof.KLevel3.lean ====
import proofs.«410031_j84061099917532_3_alg».proof.Proof.Gen.KernelIdeal.Frame
import proofs.«410031_j84061099917532_3_alg».proof.Proof.Spec
import proofs.«410031_j84061099917532_3_alg».proof.Proof.SpecPool
import proofs.«410031_j84061099917532_3_alg».proof.Proof.KArgs
import proofs.«410031_j84061099917532_3_alg».proof.Proof.KKeep
import proofs.«410031_j84061099917532_3_alg».proof.Proof.KStable
import proofs.«410031_j84061099917532_3_alg».proof.Proof.KBridge
import proofs.«410031_j84061099917532_3_alg».proof.Proof.KHost0
import proofs.«410031_j84061099917532_3_alg».proof.Proof.KHost2
import proofs.«410031_j84061099917532_3_alg».proof.Proof.R2Out

noncomputable section

open Idealize.ShloMosaic Idealize.ShloMosaic.TcCoe Idealize.SL.Sem
open TreeNN ValueIdx

namespace Cert.KernelIdeal.Chain

open Cert.KernelIdeal Cert.KernelIdeal.Gen

variable (m : (ℓ : Loc nD τ sig) → Buf (Elt Ideal) ℓ) (ρ : Dev nD → PrngReg) (c : Dev nD)

theorem fixed3_e (b : Ref sig .tc) (hf : b ∈ Stable.fixed) :
    W5 m ρ c (Proc.devRef .tc b) = W1 m ρ c (Proc.devRef .tc b) := Stable.W5_fixed m ρ c b hf

theorem arg3_e (b : Ref sig .tc) (hf : b ∈ Stable.fixed) (ha : b ∈ Stable.args) :
    W5 m ρ c (Proc.devRef .tc b) = W0 m ρ c (Proc.devRef .tc b) :=
  (Stable.W5_fixed m ρ c b hf).trans (Stable.W1_arg m ρ c b ha)

theorem arg3_b (b : Ref sig .tc) (hf : b ∈ Stable.fixed) (ha : b ∈ Stable.args) :
    W4 m ρ c (Proc.devRef .tc b) = W0 m ρ c (Proc.devRef .tc b) :=
  (Stable.W4_fixed m ρ c b hf).trans (Stable.W1_arg m ρ c b ha)

theorem mlp3_eq : Region2.mlp (V5 m ρ) c = pm m c := by
  unfold Region2.mlp pm
  exact mlp_bridge _ _ _ _ _ _ _ _ _ _ _ _
    (arg3_e m ρ c main_arg16 (fx 16 (by decide)) (ag 16 (by decide)))
    (fun j => (Host2.v50_apply m ρ c j).trans (congrFun (arg3_b m ρ c main_arg17 (fx 17 (by decide)) (ag 17 (by decide))) (ix1 j)))
    (arg3_e m ρ c main_arg18 (fx 18 (by decide)) (ag 18 (by decide)))
    (fun j => (Host2.v51_apply m ρ c j).trans (congrFun (arg3_b m ρ c main_arg19 (fx 19 (by decide)) (ag 19 (by decide))) (ix1 j)))
    (arg3_e m ρ c main_arg20 (fx 20 (by decide)) (ag 20 (by decide)))
    (fun j => (Host2.v52_apply m ρ c j).trans (congrFun (arg3_b m ρ c main_arg21 (fx 21 (by decide)) (ag 21 (by decide))) (ix1 j)))

theorem embW3_eq : Region2.embW (V5 m ρ) c =
    EmbW.ofArrays ((m ((c : Thread nD τ).loc main_arg8)) : S32x128.Idx → EReal) ((m ((c : Thread nD τ).loc main_arg9)) : S128.Idx → EReal)
      ((m ((c : Thread nD τ).loc main_arg10)) : S32x128.Idx → EReal) ((m ((c : Thread nD τ).loc main_arg11)) : S128.Idx → EReal)
      ((m ((c : Thread nD τ).loc main_arg12)) : S1000x128.Idx → EReal) ((m ((c : Thread nD τ).loc main_arg13)) : S128.Idx → EReal)
      ((m ((c : Thread nD τ).loc main_arg15)) : S128.Idx → EReal) := by
  unfold Region2.embW
  exact embW_bridge _ _ _ _ _ _ _ _ _ _ _ _ _ _
    (arg3_e m ρ c main_arg8 (fx 8 (by decide)) (ag 8 (by decide)))
    (fun j => (Host2.v46_apply m ρ c j).trans (congrFun (arg3_b m ρ c main_arg9 (fx 9 (by decide)) (ag 9 (by decide))) (ix1 j)))
    (arg3_e m ρ c main_arg10 (fx 10 (by decide)) (ag 10 (by decide)))
    (fun j => (Host2.v47_apply m ρ c j).trans (congrFun (arg3_b m ρ c main_arg11 (fx 11 (by decide)) (ag 11 (by decide))) (ix1 j)))
    (arg3_e m ρ c main_arg12 (fx 12 (by decide)) (ag 12 (by decide)))
    (fun j => (Host2.v48_apply m ρ c j).trans (congrFun (arg3_b m ρ c main_arg13 (fx 13 (by decide)) (ag 13 (by decide))) (ix1 j)))
    (fun j => (Host2.v49_apply m ρ c j).trans (congrFun (arg3_b m ρ c main_arg15 (fx 15 (by decide)) (ag 15 (by decide))) (ix1 j)))

theorem E3_eq : Region2.E (V5 m ρ) c = Em m c := by
  funext i
  unfold Region2.E Em embOfArrays
  rw [embW3_eq m ρ c]
  exact emb_bridge _ _ _ _ _ _ _ _ _ _ _ _ _ _ _
    (arg3_e m ρ c main_arg0 (fx 0 (by decide)) (ag 0 (by decide)))
    (arg3_e m ρ c main_arg1 (fx 1 (by decide)) (ag 1 (by decide)))
    (arg3_e m ρ c main_arg2 (fx 2 (by decide)) (ag 2 (by decide)))
    (fun k n => (congrFun (fixed3_e m ρ c main_v23 (fx 39 (by decide))) (ix2 k n)).trans (Host0.v23_apply m ρ c k n))
    (fun i k => (congrFun (fixed3_e m ρ c main_v0 (fx 34 (by decide))) (ix2 i k)).trans (Host0.v0_apply m ρ c i k))
    (fun i k => (congrFun (fixed3_e m ρ c main_v1 (fx 35 (by decide))) (ix2 i k)).trans (Host0.v1_apply m ρ c i k))
    (fun i => (congrFun (fixed3_e m ρ c main_v2 (fx 36 (by decide))) (ix2 i 0)).trans (Host0.v2_apply m ρ c i)) i

theorem lm3_eq : col (V5 m ρ c (Pipeline.arrRef spec2 6) : S64512x1.Idx → EReal) = lmm m c := by
  funext i
  exact (congrFun (fixed3_e m ρ c main_v4 (fx 37 (by decide))) (ix2 i 0)).trans (Host0.v4_apply m ρ c i)
theorem rm3_eq : col (V5 m ρ c (Pipeline.arrRef spec2 7) : S64512x1.Idx → EReal) = rmm m c := by
  funext i
  exact (congrFun (fixed3_e m ρ c main_v6 (fx 38 (by decide))) (ix2 i 0)).trans (Host0.v6_apply m ρ c i)

theorem kids3_rep (f : Fin 16384 → Fin 128 → EReal)
    (h : (W4 m ρ c (Proc.devRef .tc main_v42_0) : S16384x128.Idx → EReal) = arr2 f) :
    ten3 (V5 m ρ c (Pipeline.arrRef spec2 8) : S8192x2x128.Idx → EReal) = pair (n := 8192) (by norm_num) f :=
  kids_bridge _ _ _ f h (fun i s j => Host2.v43_apply m ρ c i s j)
theorem kids3_lrep (f : Fin 16384 → Fin 128 → EReal)
    (h : (W4 m ρ c (Proc.devRef .tc main_v42_1) : S16384x128.Idx → EReal) = arr2 f) :
    ten3 (V5 m ρ c (Pipeline.arrRef spec2 9) : S8192x2x128.Idx → EReal) = pair (n := 8192) (by norm_num) f :=
  kids_bridge _ _ _ f h (fun i s j => Host2.v44_apply m ρ c i s j)
theorem kids3_rrep (f : Fin 16384 → Fin 128 → EReal)
    (h : (W4 m ρ c (Proc.devRef .tc main_v42_2) : S16384x128.Idx → EReal) = arr2 f) :
    ten3 (V5 m ρ c (Pipeline.arrRef spec2 10) : S8192x2x128.Idx → EReal) = pair (n := 8192) (by norm_num) f :=
  kids_bridge _ _ _ f h (fun i s j => Host2.v45_apply m ρ c i s j)

theorem value3_eq (below : Carry 16384)
    (h0 : (W4 m ρ c (Proc.devRef .tc main_v42_0) : S16384x128.Idx → EReal) = arr2 below.rep)
    (h1 : (W4 m ρ c (Proc.devRef .tc main_v42_1) : S16384x128.Idx → EReal) = arr2 below.lrep)
    (h2 : (W4 m ρ c (Proc.devRef .tc main_v42_2) : S16384x128.Idx → EReal) = arr2 below.rrep) :
    Region2.value (V5 m ρ) c = step 8192 7168 (by norm_num) (by norm_num) (Em m c) (lmm m c) (rmm m c) (pm m c) below := by
  unfold Region2.value step
  rw [E3_eq m ρ c, lm3_eq m ρ c, rm3_eq m ρ c, mlp3_eq m ρ c, kids3_rep m ρ c below.rep h0,
    kids3_lrep m ρ c below.lrep h1, kids3_rrep m ρ c below.rrep h2]

theorem level3_eq
    (hbelow : (W4 m ρ c (Proc.devRef .tc main_v42_0) : S16384x128.Idx → EReal) = arr2 (level4 (Em m c) (lmm m c) (rmm m c) (pm m c)).rep
      ∧ (W4 m ρ c (Proc.devRef .tc main_v42_1) : S16384x128.Idx → EReal) = arr2 (level4 (Em m c) (lmm m c) (rmm m c) (pm m c)).lrep
      ∧ (W4 m ρ c (Proc.devRef .tc main_v42_2) : S16384x128.Idx → EReal) = arr2 (level4 (Em m c) (lmm m c) (rmm m c) (pm m c)).rrep) :
    (W6 m ρ c (Proc.devRef .tc main_v53_0) : S8192x128.Idx → EReal) = arr2 (level3 (Em m c) (lmm m c) (rmm m c) (pm m c)).rep
      ∧ (W6 m ρ c (Proc.devRef .tc main_v53_1) : S8192x128.Idx → EReal) = arr2 (level3 (Em m c) (lmm m c) (rmm m c) (pm m c)).lrep
      ∧ (W6 m ρ c (Proc.devRef .tc main_v53_2) : S8192x128.Idx → EReal) = arr2 (level3 (Em m c) (lmm m c) (rmm m c) (pm m c)).rrep := by
  have hv := value3_eq m ρ c _ hbelow.1 hbelow.2.1 hbelow.2.2
  refine ⟨?_, ?_, ?_⟩
  · exact ((W6_arr m ρ c 25).trans (Region2.rep_eq (V5 m ρ) c)).trans (congrArg (fun v : Carry 8192 => arr2 v.rep) hv)
  · exact ((W6_arr m ρ c 26).trans (Region2.lrep_eq (V5 m ρ) c)).trans (congrArg (fun v : Carry 8192 => arr2 v.lrep) hv)
  · exact ((W6_arr m ρ c 27).trans (Region2.rrep_eq (V5 m ρ) c)).trans (congrArg (fun v : Carry 8192 => arr2 v.rrep) hv)

end Cert.KernelIdeal.Chain

end
-- ==== Proof.KHost3.lean ====
import proofs.«410031_j84061099917532_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host3

open Cert.KernelIdeal Cert.KernelIdeal.Gen Idealize.ShloMosaic Idealize.ShloMosaic.TcCoe Idealize.ShloMosaic.ValueIdx
open Idealize.ShloMosaic.StableHlo

section Contents

variable (V : Valuation τ sig (Elt Ideal))

theorem v54_term : (StableHlo.after (hostOps3 (F := Ideal)) V (Proc.devRef .tc main_v54) : S4096x2x128.Idx → EReal) =
    shapeCast S4096x2x128 (V (Proc.devRef .tc main_v53_0) : S8192x128.Idx → EReal) Facts₀.shapeCasts_S8192x128_S4096x2x128 := by
  after_results; rfl

theorem v54_at (i : Fin 4096) (s : Fin 2) (j : Fin 128) :
    (StableHlo.after (hostOps3 (F := Ideal)) V (Proc.devRef .tc main_v54) : S4096x2x128.Idx → EReal) (ix3 i s j) =
      (V (Proc.devRef .tc main_v53_0) : S8192x128.Idx → EReal) (ix2 ⟨2 * i.val + s.val, by omega⟩ j) := by
  rw [v54_term]
  exact shapeCast_apply (s := S8192x128) (t := S4096x2x128) _ _ _ _ (by
    rw [Shape.rowMajor_val_three, Shape.rowMajor_val_two]
    show (2 * i.val + s.val) * 128 + j.val = (i.val * 2 + s.val) * 128 + j.val
    omega)

theorem v55_term : (StableHlo.after (hostOps3 (F := Ideal)) V (Proc.devRef .tc main_v55) : S4096x2x128.Idx → EReal) =
    shapeCast S4096x2x128 (V (Proc.devRef .tc main_v53_1) : S8192x128.Idx → EReal) Facts₀.shapeCasts_S8192x128_S4096x2x128 := by
  after_results; rfl

theorem v55_at (i : Fin 4096) (s : Fin 2) (j : Fin 128) :
    (StableHlo.after (hostOps3 (F := Ideal)) V (Proc.devRef .tc main_v55) : S4096x2x128.Idx → EReal) (ix3 i s j) =
      (V (Proc.devRef .tc main_v53_1) : S8192x128.Idx → EReal) (ix2 ⟨2 * i.val + s.val, by omega⟩ j) := by
  rw [v55_term]
  exact shapeCast_apply (s := S8192x128) (t := S4096x2x128) _ _ _ _ (by
    rw [Shape.rowMajor_val_three, Shape.rowMajor_val_two]
    show (2 * i.val + s.val) * 128 + j.val = (i.val * 2 + s.val) * 128 + j.val
    omega)

theorem v56_term : (StableHlo.after (hostOps3 (F := Ideal)) V (Proc.devRef .tc main_v56) : S4096x2x128.Idx → EReal) =
    shapeCast S4096x2x128 (V (Proc.devRef .tc main_v53_2) : S8192x128.Idx → EReal) Facts₀.shapeCasts_S8192x128_S4096x2x128 := by
  after_results; rfl

theorem v56_at (i : Fin 4096) (s : Fin 2) (j : Fin 128) :
    (StableHlo.after (hostOps3 (F := Ideal)) V (Proc.devRef .tc main_v56) : S4096x2x128.Idx → EReal) (ix3 i s j) =
      (V (Proc.devRef .tc main_v53_2) : S8192x128.Idx → EReal) (ix2 ⟨2 * i.val + s.val, by omega⟩ j) := by
  rw [v56_term]
  exact shapeCast_apply (s := S8192x128) (t := S4096x2x128) _ _ _ _ (by
    rw [Shape.rowMajor_val_three, Shape.rowMajor_val_two]
    show (2 * i.val + s.val) * 128 + j.val = (i.val * 2 + s.val) * 128 + j.val
    omega)

theorem v57_term : (StableHlo.after (hostOps3 (F := Ideal)) V (Proc.devRef .tc main_v57) : S1x128.Idx → EReal) =
    shapeCast S1x128 (V (Proc.devRef .tc main_arg9) : S128.Idx → EReal) Facts₀.shapeCasts_S128_S1x128 := by
  after_results; rfl

theorem v57_at (j : Fin 128) :
    (StableHlo.after (hostOps3 (F := Ideal)) V (Proc.devRef .tc main_v57) : S1x128.Idx → EReal) (ix2 0 j) =
      (V (Proc.devRef .tc main_arg9) : S128.Idx → EReal) (ix1 j) := by
  rw [v57_term]
  exact shapeCast_a_1a_apply (a := 128) _ _ 0 j

theorem v58_term : (StableHlo.after (hostOps3 (F := Ideal)) V (Proc.devRef .tc main_v58) : S1x128.Idx → EReal) =
    shapeCast S1x128 (V (Proc.devRef .tc main_arg11) : S128.Idx → EReal) Facts₀.shapeCasts_S128_S1x128 := by
  after_results; rfl

theorem v58_at (j : Fin 128) :
    (StableHlo.after (hostOps3 (F := Ideal)) V (Proc.devRef .tc main_v58) : S1x128.Idx → EReal) (ix2 0 j) =
      (V (Proc.devRef .tc main_arg11) : S128.Idx → EReal) (ix1 j) := by
  rw [v58_term]
  exact shapeCast_a_1a_apply (a := 128) _ _ 0 j

theorem v59_term : (StableHlo.after (hostOps3 (F := Ideal)) V (Proc.devRef .tc main_v59) : S1x128.Idx → EReal) =
    shapeCast S1x128 (V (Proc.devRef .tc main_arg13) : S128.Idx → EReal) Facts₀.shapeCasts_S128_S1x128 := by
  after_results; rfl

theorem v59_at (j : Fin 128) :
    (StableHlo.after (hostOps3 (F := Ideal)) V (Proc.devRef .tc main_v59) : S1x128.Idx → EReal) (ix2 0 j) =
      (V (Proc.devRef .tc main_arg13) : S128.Idx → EReal) (ix1 j) := by
  rw [v59_term]
  exact shapeCast_a_1a_apply (a := 128) _ _ 0 j

theorem v60_term : (StableHlo.after (hostOps3 (F := Ideal)) V (Proc.devRef .tc main_v60) : S1x128.Idx → EReal) =
    shapeCast S1x128 (V (Proc.devRef .tc main_arg15) : S128.Idx → EReal) Facts₀.shapeCasts_S128_S1x128 := by
  after_results; rfl

theorem v60_at (j : Fin 128) :
    (StableHlo.after (hostOps3 (F := Ideal)) V (Proc.devRef .tc main_v60) : S1x128.Idx → EReal) (ix2 0 j) =
      (V (Proc.devRef .tc main_arg15) : S128.Idx → EReal) (ix1 j) := by
  rw [v60_term]
  exact shapeCast_a_1a_apply (a := 128) _ _ 0 j

theorem v61_term : (StableHlo.after (hostOps3 (F := Ideal)) V (Proc.devRef .tc main_v61) : S1x512.Idx → EReal) =
    shapeCast S1x512 (V (Proc.devRef .tc main_arg17) : S512.Idx → EReal) Facts₀.shapeCasts_S512_S1x512 := by
  after_results; rfl

theorem v61_at (j : Fin 512) :
    (StableHlo.after (hostOps3 (F := Ideal)) V (Proc.devRef .tc main_v61) : S1x512.Idx → EReal) (ix2 0 j) =
      (V (Proc.devRef .tc main_arg17) : S512.Idx → EReal) (ix1 j) := by
  rw [v61_term]
  exact shapeCast_a_1a_apply (a := 512) _ _ 0 j

theorem v62_term : (StableHlo.after (hostOps3 (F := Ideal)) V (Proc.devRef .tc main_v62) : S1x256.Idx → EReal) =
    shapeCast S1x256 (V (Proc.devRef .tc main_arg19) : S256.Idx → EReal) Facts₀.shapeCasts_S256_S1x256 := by
  after_results; rfl

theorem v62_at (j : Fin 256) :
    (StableHlo.after (hostOps3 (F := Ideal)) V (Proc.devRef .tc main_v62) : S1x256.Idx → EReal) (ix2 0 j) =
      (V (Proc.devRef .tc main_arg19) : S256.Idx → EReal) (ix1 j) := by
  rw [v62_term]
  exact shapeCast_a_1a_apply (a := 256) _ _ 0 j

theorem v63_term : (StableHlo.after (hostOps3 (F := Ideal)) V (Proc.devRef .tc main_v63) : S1x128.Idx → EReal) =
    shapeCast S1x128 (V (Proc.devRef .tc main_arg21) : S128.Idx → EReal) Facts₀.shapeCasts_S128_S1x128 := by
  after_results; rfl

theorem v63_at (j : Fin 128) :
    (StableHlo.after (hostOps3 (F := Ideal)) V (Proc.devRef .tc main_v63) : S1x128.Idx → EReal) (ix2 0 j) =
      (V (Proc.devRef .tc main_arg21) : S128.Idx → EReal) (ix1 j) := by
  rw [v63_term]
  exact shapeCast_a_1a_apply (a := 128) _ _ 0 j

end Contents

variable (m : (ℓ : Loc nD τ sig) → Buf (Elt Ideal) ℓ) (ρ : Dev nD → PrngReg) (c : Dev nD)

theorem v54_apply (i : Fin 4096) (s : Fin 2) (j : Fin 128) :
    (W7 m ρ c (Proc.devRef .tc main_v54) : S4096x2x128.Idx → EReal) (ix3 i s j) =
      (W6 m ρ c (Proc.devRef .tc main_v53_0) : S8192x128.Idx → EReal) (ix2 ⟨2 * i.val + s.val, by omega⟩ j) :=
  v54_at (W6 m ρ c) i s j

theorem v55_apply (i : Fin 4096) (s : Fin 2) (j : Fin 128) :
    (W7 m ρ c (Proc.devRef .tc main_v55) : S4096x2x128.Idx → EReal) (ix3 i s j) =
      (W6 m ρ c (Proc.devRef .tc main_v53_1) : S8192x128.Idx → EReal) (ix2 ⟨2 * i.val + s.val, by omega⟩ j) :=
  v55_at (W6 m ρ c) i s j

theorem v56_apply (i : Fin 4096) (s : Fin 2) (j : Fin 128) :
    (W7 m ρ c (Proc.devRef .tc main_v56) : S4096x2x128.Idx → EReal) (ix3 i s j) =
      (W6 m ρ c (Proc.devRef .tc main_v53_2) : S8192x128.Idx → EReal) (ix2 ⟨2 * i.val + s.val, by omega⟩ j) :=
  v56_at (W6 m ρ c) i s j

theorem v57_apply (j : Fin 128) :
    (W7 m ρ c (Proc.devRef .tc main_v57) : S1x128.Idx → EReal) (ix2 0 j) =
      (W6 m ρ c (Proc.devRef .tc main_arg9) : S128.Idx → EReal) (ix1 j) :=
  v57_at (W6 m ρ c) j

theorem v58_apply (j : Fin 128) :
    (W7 m ρ c (Proc.devRef .tc main_v58) : S1x128.Idx → EReal) (ix2 0 j) =
      (W6 m ρ c (Proc.devRef .tc main_arg11) : S128.Idx → EReal) (ix1 j) :=
  v58_at (W6 m ρ c) j

theorem v59_apply (j : Fin 128) :
    (W7 m ρ c (Proc.devRef .tc main_v59) : S1x128.Idx → EReal) (ix2 0 j) =
      (W6 m ρ c (Proc.devRef .tc main_arg13) : S128.Idx → EReal) (ix1 j) :=
  v59_at (W6 m ρ c) j

theorem v60_apply (j : Fin 128) :
    (W7 m ρ c (Proc.devRef .tc main_v60) : S1x128.Idx → EReal) (ix2 0 j) =
      (W6 m ρ c (Proc.devRef .tc main_arg15) : S128.Idx → EReal) (ix1 j) :=
  v60_at (W6 m ρ c) j

theorem v61_apply (j : Fin 512) :
    (W7 m ρ c (Proc.devRef .tc main_v61) : S1x512.Idx → EReal) (ix2 0 j) =
      (W6 m ρ c (Proc.devRef .tc main_arg17) : S512.Idx → EReal) (ix1 j) :=
  v61_at (W6 m ρ c) j

theorem v62_apply (j : Fin 256) :
    (W7 m ρ c (Proc.devRef .tc main_v62) : S1x256.Idx → EReal) (ix2 0 j) =
      (W6 m ρ c (Proc.devRef .tc main_arg19) : S256.Idx → EReal) (ix1 j) :=
  v62_at (W6 m ρ c) j

theorem v63_apply (j : Fin 128) :
    (W7 m ρ c (Proc.devRef .tc main_v63) : S1x128.Idx → EReal) (ix2 0 j) =
      (W6 m ρ c (Proc.devRef .tc main_arg21) : S128.Idx → EReal) (ix1 j) :=
  v63_at (W6 m ρ c) j

end Cert.KernelIdeal.Host3
-- ==== Proof.R3Out.lean ====
import proofs.«410031_j84061099917532_3_alg».proof.Proof.Gen.KernelIdeal.Frame
import proofs.«410031_j84061099917532_3_alg».proof.Proof.R1Tile
import Idealize.ShloMosaic.Lib.Pipeline.Value
import Idealize.ShloMosaic.Lib.ValueIdx

noncomputable section

open Idealize.ShloMosaic Idealize.ShloMosaic.TcCoe Idealize.SL.Sem
open TreeNN ValueIdx

namespace Cert.KernelIdeal.Region3

open Cert.KernelIdeal Cert.KernelIdeal.Gen

theorem blockIdx0 : ∀ t : Fin cfg3.N, win3_0.index t (0 : Fin 2) = 3 + t.val ∧ win3_0.index t (1 : Fin 2) = 0 :=
  (by decide +kernel : ∀ t : Fin grid3.N, _)
theorem blockIdx1 : ∀ t : Fin cfg3.N, win3_1.index t (0 : Fin 2) = 3 + t.val ∧ win3_1.index t (1 : Fin 2) = 0 :=
  (by decide +kernel : ∀ t : Fin grid3.N, _)
theorem blockIdx2 : ∀ t : Fin cfg3.N, win3_2.index t (0 : Fin 2) = 3 + t.val ∧ win3_2.index t (1 : Fin 2) = 0 :=
  (by decide +kernel : ∀ t : Fin grid3.N, _)
theorem blockIdx3 : ∀ t : Fin cfg3.N, win3_3.index t (0 : Fin 2) = 3 + t.val ∧ win3_3.index t (1 : Fin 2) = 0 :=
  (by decide +kernel : ∀ t : Fin grid3.N, _)
theorem blockIdx4 : ∀ t : Fin cfg3.N, win3_4.index t (0 : Fin 2) = 3 + t.val ∧ win3_4.index t (1 : Fin 2) = 0 :=
  (by decide +kernel : ∀ t : Fin grid3.N, _)
theorem blockIdx5 : ∀ t : Fin cfg3.N, win3_5.index t (0 : Fin 2) = 3 + t.val ∧ win3_5.index t (1 : Fin 2) = 0 :=
  (by decide +kernel : ∀ t : Fin grid3.N, _)
theorem blockIdx6 : ∀ t : Fin cfg3.N, win3_6.index t (0 : Fin 2) = 3 + t.val ∧ win3_6.index t (1 : Fin 2) = 0 :=
  (by decide +kernel : ∀ t : Fin grid3.N, _)
theorem blockIdx7 : ∀ t : Fin cfg3.N, win3_7.index t (0 : Fin 2) = 3 + t.val ∧ win3_7.index t (1 : Fin 2) = 0 :=
  (by decide +kernel : ∀ t : Fin grid3.N, _)
theorem blockIdx8 : ∀ t : Fin cfg3.N, win3_8.index t (0 : Fin 3) = t.val ∧ win3_8.index t (1 : Fin 3) = 0 ∧ win3_8.index t (2 : Fin 3) = 0 :=
  (by decide +kernel : ∀ t : Fin grid3.N, _)
theorem blockIdx9 : ∀ t : Fin cfg3.N, win3_9.index t (0 : Fin 3) = t.val ∧ win3_9.index t (1 : Fin 3) = 0 ∧ win3_9.index t (2 : Fin 3) = 0 :=
  (by decide +kernel : ∀ t : Fin grid3.N, _)
theorem blockIdx10 : ∀ t : Fin cfg3.N, win3_10.index t (0 : Fin 3) = t.val ∧ win3_10.index t (1 : Fin 3) = 0 ∧ win3_10.index t (2 : Fin 3) = 0 :=
  (by decide +kernel : ∀ t : Fin grid3.N, _)
theorem blockIdx11 : ∀ t : Fin cfg3.N, win3_11.index t (0 : Fin 2) = 0 ∧ win3_11.index t (1 : Fin 2) = 0 :=
  (by decide +kernel : ∀ t : Fin grid3.N, _)
theorem blockIdx12 : ∀ t : Fin cfg3.N, win3_12.index t (0 : Fin 2) = 0 ∧ win3_12.index t (1 : Fin 2) = 0 :=
  (by decide +kernel : ∀ t : Fin grid3.N, _)
theorem blockIdx13 : ∀ t : Fin cfg3.N, win3_13.index t (0 : Fin 2) = 0 ∧ win3_13.index t (1 : Fin 2) = 0 :=
  (by decide +kernel : ∀ t : Fin grid3.N, _)
theorem blockIdx14 : ∀ t : Fin cfg3.N, win3_14.index t (0 : Fin 2) = 0 ∧ win3_14.index t (1 : Fin 2) = 0 :=
  (by decide +kernel : ∀ t : Fin grid3.N, _)
theorem blockIdx15 : ∀ t : Fin cfg3.N, win3_15.index t (0 : Fin 2) = 0 ∧ win3_15.index t (1 : Fin 2) = 0 :=
  (by decide +kernel : ∀ t : Fin grid3.N, _)
theorem blockIdx16 : ∀ t : Fin cfg3.N, win3_16.index t (0 : Fin 2) = 0 ∧ win3_16.index t (1 : Fin 2) = 0 :=
  (by decide +kernel : ∀ t : Fin grid3.N, _)
theorem blockIdx17 : ∀ t : Fin cfg3.N, win3_17.index t (0 : Fin 2) = 0 ∧ win3_17.index t (1 : Fin 2) = 0 :=
  (by decide +kernel : ∀ t : Fin grid3.N, _)
theorem blockIdx18 : ∀ t : Fin cfg3.N, win3_18.index t (0 : Fin 2) = 0 ∧ win3_18.index t (1 : Fin 2) = 0 :=
  (by decide +kernel : ∀ t : Fin grid3.N, _)
theorem blockIdx19 : ∀ t : Fin cfg3.N, win3_19.index t (0 : Fin 2) = 0 ∧ win3_19.index t (1 : Fin 2) = 0 :=
  (by decide +kernel : ∀ t : Fin grid3.N, _)
theorem blockIdx20 : ∀ t : Fin cfg3.N, win3_20.index t (0 : Fin 2) = 0 ∧ win3_20.index t (1 : Fin 2) = 0 :=
  (by decide +kernel : ∀ t : Fin grid3.N, _)
theorem blockIdx21 : ∀ t : Fin cfg3.N, win3_21.index t (0 : Fin 2) = 0 ∧ win3_21.index t (1 : Fin 2) = 0 :=
  (by decide +kernel : ∀ t : Fin grid3.N, _)
theorem blockIdx22 : ∀ t : Fin cfg3.N, win3_22.index t (0 : Fin 2) = 0 ∧ win3_22.index t (1 : Fin 2) = 0 :=
  (by decide +kernel : ∀ t : Fin grid3.N, _)
theorem blockIdx23 : ∀ t : Fin cfg3.N, win3_23.index t (0 : Fin 2) = 0 ∧ win3_23.index t (1 : Fin 2) = 0 :=
  (by decide +kernel : ∀ t : Fin grid3.N, _)
theorem blockIdx24 : ∀ t : Fin cfg3.N, win3_24.index t (0 : Fin 2) = 0 ∧ win3_24.index t (1 : Fin 2) = 0 :=
  (by decide +kernel : ∀ t : Fin grid3.N, _)
theorem blockIdx25 : ∀ t : Fin cfg3.N, win3_25.index t (0 : Fin 2) = t.val ∧ win3_25.index t (1 : Fin 2) = 0 :=
  (by decide +kernel : ∀ t : Fin grid3.N, _)
theorem blockIdx26 : ∀ t : Fin cfg3.N, win3_26.index t (0 : Fin 2) = t.val ∧ win3_26.index t (1 : Fin 2) = 0 :=
  (by decide +kernel : ∀ t : Fin grid3.N, _)
theorem blockIdx27 : ∀ t : Fin cfg3.N, win3_27.index t (0 : Fin 2) = t.val ∧ win3_27.index t (1 : Fin 2) = 0 :=
  (by decide +kernel : ∀ t : Fin grid3.N, _)

theorem block0_apply (A : S64512x32.Idx → EReal) (t : Fin cfg3.N) (r : Fin 1024) (q : Fin 32) (k : Fin 64512)
    (hk : k.val = 1024 * (3 + t.val) + r.val) :
    ((cfg3.win 0).blk t).view.read (Elt Ideal) A (ix2 r q) = A (ix2 k q) := by
  rw [View.read_apply]
  show A _ = A _
  congr 1
  funext a
  apply Fin.ext
  match a with
  | ⟨0, _⟩ => show win3_0.index t (0 : Fin 2) * 1024 + 1 * r.val = k.val; rw [(blockIdx0 t).1, hk]; omega
  | ⟨1, _⟩ => show win3_0.index t (1 : Fin 2) * 32 + 1 * q.val = q.val; rw [(blockIdx0 t).2]; omega

theorem block1_apply (A : S64512x32.Idx → EReal) (t : Fin cfg3.N) (r : Fin 1024) (q : Fin 32) (k : Fin 64512)
    (hk : k.val = 1024 * (3 + t.val) + r.val) :
    ((cfg3.win 1).blk t).view.read (Elt Ideal) A (ix2 r q) = A (ix2 k q) := by
  rw [View.read_apply]
  show A _ = A _
  congr 1
  funext a
  apply Fin.ext
  match a with
  | ⟨0, _⟩ => show win3_1.index t (0 : Fin 2) * 1024 + 1 * r.val = k.val; rw [(blockIdx1 t).1, hk]; omega
  | ⟨1, _⟩ => show win3_1.index t (1 : Fin 2) * 32 + 1 * q.val = q.val; rw [(blockIdx1 t).2]; omega

theorem block2_apply (A : S64512x1000.Idx → EReal) (t : Fin cfg3.N) (r : Fin 1024) (q : Fin 1000) (k : Fin 64512)
    (hk : k.val = 1024 * (3 + t.val) + r.val) :
    ((cfg3.win 2).blk t).view.read (Elt Ideal) A (ix2 r q) = A (ix2 k q) := by
  rw [View.read_apply]
  show A _ = A _
  congr 1
  funext a
  apply Fin.ext
  match a with
  | ⟨0, _⟩ => show win3_2.index t (0 : Fin 2) * 1024 + 1 * r.val = k.val; rw [(blockIdx2 t).1, hk]; omega
  | ⟨1, _⟩ => show win3_2.index t (1 : Fin 2) * 1000 + 1 * q.val = q.val; rw [(blockIdx2 t).2]; omega

theorem block3_apply (A : S64512x256.Idx → EReal) (t : Fin cfg3.N) (r : Fin 1024) (q : Fin 256) (k : Fin 64512)
    (hk : k.val = 1024 * (3 + t.val) + r.val) :
    ((cfg3.win 3).blk t).view.read (Elt Ideal) A (ix2 r q) = A (ix2 k q) := by
  rw [View.read_apply]
  show A _ = A _
  congr 1
  funext a
  apply Fin.ext
  match a with
  | ⟨0, _⟩ => show win3_3.index t (0 : Fin 2) * 1024 + 1 * r.val = k.val; rw [(blockIdx3 t).1, hk]; omega
  | ⟨1, _⟩ => show win3_3.index t (1 : Fin 2) * 256 + 1 * q.val = q.val; rw [(blockIdx3 t).2]; omega

theorem block4_apply (A : S64512x256.Idx → EReal) (t : Fin cfg3.N) (r : Fin 1024) (q : Fin 256) (k : Fin 64512)
    (hk : k.val = 1024 * (3 + t.val) + r.val) :
    ((cfg3.win 4).blk t).view.read (Elt Ideal) A (ix2 r q) = A (ix2 k q) := by
  rw [View.read_apply]
  show A _ = A _
  congr 1
  funext a
  apply Fin.ext
  match a with
  | ⟨0, _⟩ => show win3_4.index t (0 : Fin 2) * 1024 + 1 * r.val = k.val; rw [(blockIdx4 t).1, hk]; omega
  | ⟨1, _⟩ => show win3_4.index t (1 : Fin 2) * 256 + 1 * q.val = q.val; rw [(blockIdx4 t).2]; omega

theorem block5_apply (A : S64512x1.Idx → EReal) (t : Fin cfg3.N) (r : Fin 1024) (q : Fin 1) (k : Fin 64512)
    (hk : k.val = 1024 * (3 + t.val) + r.val) :
    ((cfg3.win 5).blk t).view.read (Elt Ideal) A (ix2 r q) = A (ix2 k q) := by
  rw [View.read_apply]
  show A _ = A _
  congr 1
  funext a
  apply Fin.ext
  match a with
  | ⟨0, _⟩ => show win3_5.index t (0 : Fin 2) * 1024 + 1 * r.val = k.val; rw [(blockIdx5 t).1, hk]; omega
  | ⟨1, _⟩ => show win3_5.index t (1 : Fin 2) * 1 + 1 * q.val = q.val; rw [(blockIdx5 t).2]; omega

theorem block6_apply (A : S64512x1.Idx → EReal) (t : Fin cfg3.N) (r : Fin 1024) (q : Fin 1) (k : Fin 64512)
    (hk : k.val = 1024 * (3 + t.val) + r.val) :
    ((cfg3.win 6).blk t).view.read (Elt Ideal) A (ix2 r q) = A (ix2 k q) := by
  rw [View.read_apply]
  show A _ = A _
  congr 1
  funext a
  apply Fin.ext
  match a with
  | ⟨0, _⟩ => show win3_6.index t (0 : Fin 2) * 1024 + 1 * r.val = k.val; rw [(blockIdx6 t).1, hk]; omega
  | ⟨1, _⟩ => show win3_6.index t (1 : Fin 2) * 1 + 1 * q.val = q.val; rw [(blockIdx6 t).2]; omega

theorem block7_apply (A : S64512x1.Idx → EReal) (t : Fin cfg3.N) (r : Fin 1024) (q : Fin 1) (k : Fin 64512)
    (hk : k.val = 1024 * (3 + t.val) + r.val) :
    ((cfg3.win 7).blk t).view.read (Elt Ideal) A (ix2 r q) = A (ix2 k q) := by
  rw [View.read_apply]
  show A _ = A _
  congr 1
  funext a
  apply Fin.ext
  match a with
  | ⟨0, _⟩ => show win3_7.index t (0 : Fin 2) * 1024 + 1 * r.val = k.val; rw [(blockIdx7 t).1, hk]; omega
  | ⟨1, _⟩ => show win3_7.index t (1 : Fin 2) * 1 + 1 * q.val = q.val; rw [(blockIdx7 t).2]; omega

theorem block8_apply (A : S4096x2x128.Idx → EReal) (t : Fin cfg3.N) (r : Fin 1024) (s : Fin 2) (q : Fin 128) (i : Fin 4096)
    (hi : i.val = 1024 * t.val + r.val) :
    ((cfg3.win 8).blk t).view.read (Elt Ideal) A (ix3 r s q) = A (ix3 i s q) := by
  rw [View.read_apply]
  show A _ = A _
  congr 1
  funext a
  apply Fin.ext
  match a with
  | ⟨0, _⟩ => show win3_8.index t (0 : Fin 3) * 1024 + 1 * r.val = i.val; rw [(blockIdx8 t).1, hi]; omega
  | ⟨1, _⟩ => show win3_8.index t (1 : Fin 3) * 2 + 1 * s.val = s.val; rw [(blockIdx8 t).2.1]; omega
  | ⟨2, _⟩ => show win3_8.index t (2 : Fin 3) * 128 + 1 * q.val = q.val; rw [(blockIdx8 t).2.2]; omega

theorem block9_apply (A : S4096x2x128.Idx → EReal) (t : Fin cfg3.N) (r : Fin 1024) (s : Fin 2) (q : Fin 128) (i : Fin 4096)
    (hi : i.val = 1024 * t.val + r.val) :
    ((cfg3.win 9).blk t).view.read (Elt Ideal) A (ix3 r s q) = A (ix3 i s q) := by
  rw [View.read_apply]
  show A _ = A _
  congr 1
  funext a
  apply Fin.ext
  match a with
  | ⟨0, _⟩ => show win3_9.index t (0 : Fin 3) * 1024 + 1 * r.val = i.val; rw [(blockIdx9 t).1, hi]; omega
  | ⟨1, _⟩ => show win3_9.index t (1 : Fin 3) * 2 + 1 * s.val = s.val; rw [(blockIdx9 t).2.1]; omega
  | ⟨2, _⟩ => show win3_9.index t (2 : Fin 3) * 128 + 1 * q.val = q.val; rw [(blockIdx9 t).2.2]; omega

theorem block10_apply (A : S4096x2x128.Idx → EReal) (t : Fin cfg3.N) (r : Fin 1024) (s : Fin 2) (q : Fin 128) (i : Fin 4096)
    (hi : i.val = 1024 * t.val + r.val) :
    ((cfg3.win 10).blk t).view.read (Elt Ideal) A (ix3 r s q) = A (ix3 i s q) := by
  rw [View.read_apply]
  show A _ = A _
  congr 1
  funext a
  apply Fin.ext
  match a with
  | ⟨0, _⟩ => show win3_10.index t (0 : Fin 3) * 1024 + 1 * r.val = i.val; rw [(blockIdx10 t).1, hi]; omega
  | ⟨1, _⟩ => show win3_10.index t (1 : Fin 3) * 2 + 1 * s.val = s.val; rw [(blockIdx10 t).2.1]; omega
  | ⟨2, _⟩ => show win3_10.index t (2 : Fin 3) * 128 + 1 * q.val = q.val; rw [(blockIdx10 t).2.2]; omega

theorem block11_eq (A : S32x128.Idx → EReal) (t : Fin cfg3.N) :
    (((cfg3.win 11).blk t).view.read (Elt Ideal) A : S32x128.Idx → EReal) = A := by
  funext x
  rw [View.read_apply]
  show A _ = A _
  congr 1
  funext a
  apply Fin.ext
  match a with
  | ⟨0, _⟩ => show win3_11.index t (0 : Fin 2) * 32 + 1 * (x 0).val = (x 0).val; rw [(blockIdx11 t).1]; omega
  | ⟨1, _⟩ => show win3_11.index t (1 : Fin 2) * 128 + 1 * (x 1).val = (x 1).val; rw [(blockIdx11 t).2]; omega

theorem block12_eq (A : S1x128.Idx → EReal) (t : Fin cfg3.N) :
    (((cfg3.win 12).blk t).view.read (Elt Ideal) A : S1x128.Idx → EReal) = A := by
  funext x
  rw [View.read_apply]
  show A _ = A _
  congr 1
  funext a
  apply Fin.ext
  match a with
  | ⟨0, _⟩ => show win3_12.index t (0 : Fin 2) * 1 + 1 * (x 0).val = (x 0).val; rw [(blockIdx12 t).1]; omega
  | ⟨1, _⟩ => show win3_12.index t (1 : Fin 2) * 128 + 1 * (x 1).val = (x 1).val; rw [(blockIdx12 t).2]; omega

theorem block13_eq (A : S32x128.Idx → EReal) (t : Fin cfg3.N) :
    (((cfg3.win 13).blk t).view.read (Elt Ideal) A : S32x128.Idx → EReal) = A := by
  funext x
  rw [View.read_apply]
  show A _ = A _
  congr 1
  funext a
  apply Fin.ext
  match a with
  | ⟨0, _⟩ => show win3_13.index t (0 : Fin 2) * 32 + 1 * (x 0).val = (x 0).val; rw [(blockIdx13 t).1]; omega
  | ⟨1, _⟩ => show win3_13.index t (1 : Fin 2) * 128 + 1 * (x 1).val = (x 1).val; rw [(blockIdx13 t).2]; omega

theorem block14_eq (A : S1x128.Idx → EReal) (t : Fin cfg3.N) :
    (((cfg3.win 14).blk t).view.read (Elt Ideal) A : S1x128.Idx → EReal) = A := by
  funext x
  rw [View.read_apply]
  show A _ = A _
  congr 1
  funext a
  apply Fin.ext
  match a with
  | ⟨0, _⟩ => show win3_14.index t (0 : Fin 2) * 1 + 1 * (x 0).val = (x 0).val; rw [(blockIdx14 t).1]; omega
  | ⟨1, _⟩ => show win3_14.index t (1 : Fin 2) * 128 + 1 * (x 1).val = (x 1).val; rw [(blockIdx14 t).2]; omega

theorem block15_eq (A : S1000x128.Idx → EReal) (t : Fin cfg3.N) :
    (((cfg3.win 15).blk t).view.read (Elt Ideal) A : S1000x128.Idx → EReal) = A := by
  funext x
  rw [View.read_apply]
  show A _ = A _
  congr 1
  funext a
  apply Fin.ext
  match a with
  | ⟨0, _⟩ => show win3_15.index t (0 : Fin 2) * 1000 + 1 * (x 0).val = (x 0).val; rw [(blockIdx15 t).1]; omega
  | ⟨1, _⟩ => show win3_15.index t (1 : Fin 2) * 128 + 1 * (x 1).val = (x 1).val; rw [(blockIdx15 t).2]; omega

theorem block16_eq (A : S1x128.Idx → EReal) (t : Fin cfg3.N) :
    (((cfg3.win 16).blk t).view.read (Elt Ideal) A : S1x128.Idx → EReal) = A := by
  funext x
  rw [View.read_apply]
  show A _ = A _
  congr 1
  funext a
  apply Fin.ext
  match a with
  | ⟨0, _⟩ => show win3_16.index t (0 : Fin 2) * 1 + 1 * (x 0).val = (x 0).val; rw [(blockIdx16 t).1]; omega
  | ⟨1, _⟩ => show win3_16.index t (1 : Fin 2) * 128 + 1 * (x 1).val = (x 1).val; rw [(blockIdx16 t).2]; omega

theorem block17_eq (A : S256x512.Idx → EReal) (t : Fin cfg3.N) :
    (((cfg3.win 17).blk t).view.read (Elt Ideal) A : S256x512.Idx → EReal) = A := by
  funext x
  rw [View.read_apply]
  show A _ = A _
  congr 1
  funext a
  apply Fin.ext
  match a with
  | ⟨0, _⟩ => show win3_17.index t (0 : Fin 2) * 256 + 1 * (x 0).val = (x 0).val; rw [(blockIdx17 t).1]; omega
  | ⟨1, _⟩ => show win3_17.index t (1 : Fin 2) * 512 + 1 * (x 1).val = (x 1).val; rw [(blockIdx17 t).2]; omega

theorem block18_eq (A : S1x128.Idx → EReal) (t : Fin cfg3.N) :
    (((cfg3.win 18).blk t).view.read (Elt Ideal) A : S1x128.Idx → EReal) = A := by
  funext x
  rw [View.read_apply]
  show A _ = A _
  congr 1
  funext a
  apply Fin.ext
  match a with
  | ⟨0, _⟩ => show win3_18.index t (0 : Fin 2) * 1 + 1 * (x 0).val = (x 0).val; rw [(blockIdx18 t).1]; omega
  | ⟨1, _⟩ => show win3_18.index t (1 : Fin 2) * 128 + 1 * (x 1).val = (x 1).val; rw [(blockIdx18 t).2]; omega

theorem block19_eq (A : S1408x512.Idx → EReal) (t : Fin cfg3.N) :
    (((cfg3.win 19).blk t).view.read (Elt Ideal) A : S1408x512.Idx → EReal) = A := by
  funext x
  rw [View.read_apply]
  show A _ = A _
  congr 1
  funext a
  apply Fin.ext
  match a with
  | ⟨0, _⟩ => show win3_19.index t (0 : Fin 2) * 1408 + 1 * (x 0).val = (x 0).val; rw [(blockIdx19 t).1]; omega
  | ⟨1, _⟩ => show win3_19.index t (1 : Fin 2) * 512 + 1 * (x 1).val = (x 1).val; rw [(blockIdx19 t).2]; omega

theorem block20_eq (A : S1x512.Idx → EReal) (t : Fin cfg3.N) :
    (((cfg3.win 20).blk t).view.read (Elt Ideal) A : S1x512.Idx → EReal) = A := by
  funext x
  rw [View.read_apply]
  show A _ = A _
  congr 1
  funext a
  apply Fin.ext
  match a with
  | ⟨0, _⟩ => show win3_20.index t (0 : Fin 2) * 1 + 1 * (x 0).val = (x 0).val; rw [(blockIdx20 t).1]; omega
  | ⟨1, _⟩ => show win3_20.index t (1 : Fin 2) * 512 + 1 * (x 1).val = (x 1).val; rw [(blockIdx20 t).2]; omega

theorem block21_eq (A : S512x256.Idx → EReal) (t : Fin cfg3.N) :
    (((cfg3.win 21).blk t).view.read (Elt Ideal) A : S512x256.Idx → EReal) = A := by
  funext x
  rw [View.read_apply]
  show A _ = A _
  congr 1
  funext a
  apply Fin.ext
  match a with
  | ⟨0, _⟩ => show win3_21.index t (0 : Fin 2) * 512 + 1 * (x 0).val = (x 0).val; rw [(blockIdx21 t).1]; omega
  | ⟨1, _⟩ => show win3_21.index t (1 : Fin 2) * 256 + 1 * (x 1).val = (x 1).val; rw [(blockIdx21 t).2]; omega

theorem block22_eq (A : S1x256.Idx → EReal) (t : Fin cfg3.N) :
    (((cfg3.win 22).blk t).view.read (Elt Ideal) A : S1x256.Idx → EReal) = A := by
  funext x
  rw [View.read_apply]
  show A _ = A _
  congr 1
  funext a
  apply Fin.ext
  match a with
  | ⟨0, _⟩ => show win3_22.index t (0 : Fin 2) * 1 + 1 * (x 0).val = (x 0).val; rw [(blockIdx22 t).1]; omega
  | ⟨1, _⟩ => show win3_22.index t (1 : Fin 2) * 256 + 1 * (x 1).val = (x 1).val; rw [(blockIdx22 t).2]; omega

theorem block23_eq (A : S256x128.Idx → EReal) (t : Fin cfg3.N) :
    (((cfg3.win 23).blk t).view.read (Elt Ideal) A : S256x128.Idx → EReal) = A := by
  funext x
  rw [View.read_apply]
  show A _ = A _
  congr 1
  funext a
  apply Fin.ext
  match a with
  | ⟨0, _⟩ => show win3_23.index t (0 : Fin 2) * 256 + 1 * (x 0).val = (x 0).val; rw [(blockIdx23 t).1]; omega
  | ⟨1, _⟩ => show win3_23.index t (1 : Fin 2) * 128 + 1 * (x 1).val = (x 1).val; rw [(blockIdx23 t).2]; omega

theorem block24_eq (A : S1x128.Idx → EReal) (t : Fin cfg3.N) :
    (((cfg3.win 24).blk t).view.read (Elt Ideal) A : S1x128.Idx → EReal) = A := by
  funext x
  rw [View.read_apply]
  show A _ = A _
  congr 1
  funext a
  apply Fin.ext
  match a with
  | ⟨0, _⟩ => show win3_24.index t (0 : Fin 2) * 1 + 1 * (x 0).val = (x 0).val; rw [(blockIdx24 t).1]; omega
  | ⟨1, _⟩ => show win3_24.index t (1 : Fin 2) * 128 + 1 * (x 1).val = (x 1).val; rw [(blockIdx24 t).2]; omega

theorem writeBack25_eq (X : S1024x128.Idx → EReal) (G : S4096x128.Idx → EReal) (t : Fin cfg3.N)
    (h : ∀ (r : Fin 1024) (j : Fin 128) (i : Fin 4096), i.val = 1024 * t.val + r.val → X (ix2 r j) = G (ix2 i j)) :
    (cfg3.win 25).cut (grid3.coords t) X = ((cfg3.win 25).blk t).view.read (Elt Ideal) G := by
  funext y
  rw [View.read_apply]
  show X ((cfg3.win 25).xinj (grid3.coords t) y) = G (((cfg3.win 25).blk t).view.emb y)
  have hy : (cfg3.win 25).xinj (grid3.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 4 := by have h := t.isLt; have e : cfg3.N = 4 := N_3; omega
  have he : ((cfg3.win 25).blk t).view.emb y = ix2 (⟨1024 * t.val + (y 0).val, by omega⟩ : Fin 4096) (⟨(y 1).val, (y 1).isLt⟩ : Fin 128) := by
    funext a
    apply Fin.ext
    match a with
    | ⟨0, _⟩ => show win3_25.index t (0 : Fin 2) * 1024 + 1 * (y 0).val = 1024 * t.val + (y 0).val; rw [(blockIdx25 t).1]; omega
    | ⟨1, _⟩ => show win3_25.index t (1 : Fin 2) * 128 + 1 * (y 1).val = (y 1).val; rw [(blockIdx25 t).2]; omega
  rw [hy, he]
  exact h _ _ _ rfl

theorem rowCover25 (c : Dev nD) (i : ((cfg3.win 25).arr.view.loc (c.tc : Thread nD τ)).2.ty.Idx) :
    ∃ t : Fin cfg3.N, (cfg3.win 25).flush t = true ∧ i ∈ ((cfg3.win 25).blk t).view.set := by
  have h0 : (i 0).val < 4096 := (i 0).isLt
  have h1 : (i 1).val < 128 := (i 1).isLt
  have hlt : (i 0).val / 1024 < cfg3.N := by show _ < grid3.N; rw [N_3]; omega
  refine ⟨⟨(i 0).val / 1024, hlt⟩, flush3_25 _, ?_⟩
  show i ∈ ((View.whole main_v64_0).slice (win3_25.rect ⟨(i 0).val / 1024, hlt⟩)).set
  rw [View.set_slice_whole, Rect.mem_set_unit]
  intro a
  match a with
  | ⟨0, _⟩ =>
    show win3_25.index ⟨(i 0).val / 1024, hlt⟩ (0 : Fin 2) * 1024 ≤ (i 0).val ∧ (i 0).val < win3_25.index ⟨(i 0).val / 1024, hlt⟩ (0 : Fin 2) * 1024 + 1024
    rw [(blockIdx25 _).1]; show (i 0).val / 1024 * 1024 ≤ _ ∧ _ < (i 0).val / 1024 * 1024 + 1024; omega
  | ⟨1, _⟩ =>
    show win3_25.index ⟨(i 0).val / 1024, hlt⟩ (1 : Fin 2) * 128 ≤ (i 1).val ∧ (i 1).val < win3_25.index ⟨(i 0).val / 1024, hlt⟩ (1 : Fin 2) * 128 + 128
    rw [(blockIdx25 _).2]; omega

theorem writeBack26_eq (X : S1024x128.Idx → EReal) (G : S4096x128.Idx → EReal) (t : Fin cfg3.N)
    (h : ∀ (r : Fin 1024) (j : Fin 128) (i : Fin 4096), i.val = 1024 * t.val + r.val → X (ix2 r j) = G (ix2 i j)) :
    (cfg3.win 26).cut (grid3.coords t) X = ((cfg3.win 26).blk t).view.read (Elt Ideal) G := by
  funext y
  rw [View.read_apply]
  show X ((cfg3.win 26).xinj (grid3.coords t) y) = G (((cfg3.win 26).blk t).view.emb y)
  have hy : (cfg3.win 26).xinj (grid3.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 4 := by have h := t.isLt; have e : cfg3.N = 4 := N_3; omega
  have he : ((cfg3.win 26).blk t).view.emb y = ix2 (⟨1024 * t.val + (y 0).val, by omega⟩ : Fin 4096) (⟨(y 1).val, (y 1).isLt⟩ : Fin 128) := by
    funext a
    apply Fin.ext
    match a with
    | ⟨0, _⟩ => show win3_26.index t (0 : Fin 2) * 1024 + 1 * (y 0).val = 1024 * t.val + (y 0).val; rw [(blockIdx26 t).1]; omega
    | ⟨1, _⟩ => show win3_26.index t (1 : Fin 2) * 128 + 1 * (y 1).val = (y 1).val; rw [(blockIdx26 t).2]; omega
  rw [hy, he]
  exact h _ _ _ rfl

theorem rowCover26 (c : Dev nD) (i : ((cfg3.win 26).arr.view.loc (c.tc : Thread nD τ)).2.ty.Idx) :
    ∃ t : Fin cfg3.N, (cfg3.win 26).flush t = true ∧ i ∈ ((cfg3.win 26).blk t).view.set := by
  have h0 : (i 0).val < 4096 := (i 0).isLt
  have h1 : (i 1).val < 128 := (i 1).isLt
  have hlt : (i 0).val / 1024 < cfg3.N := by show _ < grid3.N; rw [N_3]; omega
  refine ⟨⟨(i 0).val / 1024, hlt⟩, flush3_26 _, ?_⟩
  show i ∈ ((View.whole main_v64_1).slice (win3_26.rect ⟨(i 0).val / 1024, hlt⟩)).set
  rw [View.set_slice_whole, Rect.mem_set_unit]
  intro a
  match a with
  | ⟨0, _⟩ =>
    show win3_26.index ⟨(i 0).val / 1024, hlt⟩ (0 : Fin 2) * 1024 ≤ (i 0).val ∧ (i 0).val < win3_26.index ⟨(i 0).val / 1024, hlt⟩ (0 : Fin 2) * 1024 + 1024
    rw [(blockIdx26 _).1]; show (i 0).val / 1024 * 1024 ≤ _ ∧ _ < (i 0).val / 1024 * 1024 + 1024; omega
  | ⟨1, _⟩ =>
    show win3_26.index ⟨(i 0).val / 1024, hlt⟩ (1 : Fin 2) * 128 ≤ (i 1).val ∧ (i 1).val < win3_26.index ⟨(i 0).val / 1024, hlt⟩ (1 : Fin 2) * 128 + 128
    rw [(blockIdx26 _).2]; omega

theorem writeBack27_eq (X : S1024x128.Idx → EReal) (G : S4096x128.Idx → EReal) (t : Fin cfg3.N)
    (h : ∀ (r : Fin 1024) (j : Fin 128) (i : Fin 4096), i.val = 1024 * t.val + r.val → X (ix2 r j) = G (ix2 i j)) :
    (cfg3.win 27).cut (grid3.coords t) X = ((cfg3.win 27).blk t).view.read (Elt Ideal) G := by
  funext y
  rw [View.read_apply]
  show X ((cfg3.win 27).xinj (grid3.coords t) y) = G (((cfg3.win 27).blk t).view.emb y)
  have hy : (cfg3.win 27).xinj (grid3.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 4 := by have h := t.isLt; have e : cfg3.N = 4 := N_3; omega
  have he : ((cfg3.win 27).blk t).view.emb y = ix2 (⟨1024 * t.val + (y 0).val, by omega⟩ : Fin 4096) (⟨(y 1).val, (y 1).isLt⟩ : Fin 128) := by
    funext a
    apply Fin.ext
    match a with
    | ⟨0, _⟩ => show win3_27.index t (0 : Fin 2) * 1024 + 1 * (y 0).val = 1024 * t.val + (y 0).val; rw [(blockIdx27 t).1]; omega
    | ⟨1, _⟩ => show win3_27.index t (1 : Fin 2) * 128 + 1 * (y 1).val = (y 1).val; rw [(blockIdx27 t).2]; omega
  rw [hy, he]
  exact h _ _ _ rfl

theorem rowCover27 (c : Dev nD) (i : ((cfg3.win 27).arr.view.loc (c.tc : Thread nD τ)).2.ty.Idx) :
    ∃ t : Fin cfg3.N, (cfg3.win 27).flush t = true ∧ i ∈ ((cfg3.win 27).blk t).view.set := by
  have h0 : (i 0).val < 4096 := (i 0).isLt
  have h1 : (i 1).val < 128 := (i 1).isLt
  have hlt : (i 0).val / 1024 < cfg3.N := by show _ < grid3.N; rw [N_3]; omega
  refine ⟨⟨(i 0).val / 1024, hlt⟩, flush3_27 _, ?_⟩
  show i ∈ ((View.whole main_v64_2).slice (win3_27.rect ⟨(i 0).val / 1024, hlt⟩)).set
  rw [View.set_slice_whole, Rect.mem_set_unit]
  intro a
  match a with
  | ⟨0, _⟩ =>
    show win3_27.index ⟨(i 0).val / 1024, hlt⟩ (0 : Fin 2) * 1024 ≤ (i 0).val ∧ (i 0).val < win3_27.index ⟨(i 0).val / 1024, hlt⟩ (0 : Fin 2) * 1024 + 1024
    rw [(blockIdx27 _).1]; show (i 0).val / 1024 * 1024 ≤ _ ∧ _ < (i 0).val / 1024 * 1024 + 1024; omega
  | ⟨1, _⟩ =>
    show win3_27.index ⟨(i 0).val / 1024, hlt⟩ (1 : Fin 2) * 128 ≤ (i 1).val ∧ (i 1).val < win3_27.index ⟨(i 0).val / 1024, hlt⟩ (1 : Fin 2) * 128 + 128
    rw [(blockIdx27 _).2]; omega

theorem rep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A0 : S64512x32.Idx → EReal) (A1 : S64512x32.Idx → EReal) (A2 : S64512x1000.Idx → EReal) (A3 : S64512x256.Idx → EReal) (A4 : S64512x256.Idx → EReal) (A5 : S64512x1.Idx → EReal) (A6 : S64512x1.Idx → EReal) (A7 : S64512x1.Idx → EReal) (A8 : S4096x2x128.Idx → EReal) (A9 : S4096x2x128.Idx → EReal) (A10 : S4096x2x128.Idx → EReal) (A11 : S32x128.Idx → EReal) (A12 : S1x128.Idx → EReal) (A13 : S32x128.Idx → EReal) (A14 : S1x128.Idx → EReal) (A15 : S1000x128.Idx → EReal) (A16 : S1x128.Idx → EReal) (A17 : S256x512.Idx → EReal) (A18 : S1x128.Idx → EReal) (A19 : S1408x512.Idx → EReal) (A20 : S1x512.Idx → EReal) (A21 : S512x256.Idx → EReal) (A22 : S1x256.Idx → EReal) (A23 : S256x128.Idx → EReal) (A24 : S1x128.Idx → EReal)
    (r : Fin 1024) (j : Fin 128) (k : Fin 64512) (i : Fin 4096)
    (h0 : mat x0 r = mat A0 k) (h1 : mat x1 r = mat A1 k) (h2 : mat x2 r = mat A2 k) (h3 : mat x3 r = mat A3 k) (h4 : mat x4 r = mat A4 k) (h5 : col x5 r = col A5 k) (h6 : col x6 r = col A6 k) (h7 : col x7 r = col A7 k) (h8 : ten3 x8 r = ten3 A8 i) (h9 : ten3 x9 r = ten3 A9 i) (h10 : ten3 x10 r = ten3 A10 i) (h11 : x11 = A11) (h12 : x12 = A12) (h13 : x13 = A13) (h14 : x14 = A14) (h15 : x15 = A15) (h16 : x16 = A16) (h17 : x17 = A17) (h18 : x18 = A18) (h19 : x19 = A19) (h20 : x20 = A20) (h21 : x21 = A21) (h22 : x22 = A22) (h23 : x23 = A23) (h24 : x24 = A24) :
    out3_25 (F := Ideal) x0 x1 x2 x3 x4 x5 x6 x7 x8 x9 x10 x11 x12 x13 x14 x15 x16 x17 x18 x19 x20 x21 x22 x23 x24 (ix2 r j)
      = nodeRep (MLP3.ofTiles A19 A20 A21 A22 A23 A24)
          (embK (EmbW.ofTiles A11 A12 A13 A14 A15 A16 A18) (mat A17) (mat A0 k) (mat A1 k) (mat A2 k) (mat A3 k) (mat A4 k) (col A5 k))
          (col A6 k) (col A7 k) (ten3 A8 i) (ten3 A9 i) (ten3 A10 i) j := by
  subst h11 h12 h13 h14 h15 h16 h17 h18 h19 h20 h21 h22 h23 h24
  rw [show @out3_25 = @out1_25 from rfl, Region1.out25_apply, h0, h1, h2, h3, h4, h5, h6, h7, h8, h9, h10]

theorem lrep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A6 : S64512x1.Idx → EReal) (A8 : S4096x2x128.Idx → EReal)
    (r : Fin 1024) (j : Fin 128) (k : Fin 64512) (i : Fin 4096)
    (h6 : col x6 r = col A6 k) (h8 : ten3 x8 r = ten3 A8 i) :
    out3_26 (F := Ideal) x0 x1 x2 x3 x4 x5 x6 x7 x8 x9 x10 x11 x12 x13 x14 x15 x16 x17 x18 x19 x20 x21 x22 x23 x24 (ix2 r j) = ten3 A8 i 0 j * col A6 k := by
  rw [show @out3_26 = @out1_26 from rfl, Region1.out26_apply, h6, h8]

theorem rrep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A7 : S64512x1.Idx → EReal) (A8 : S4096x2x128.Idx → EReal)
    (r : Fin 1024) (j : Fin 128) (k : Fin 64512) (i : Fin 4096)
    (h7 : col x7 r = col A7 k) (h8 : ten3 x8 r = ten3 A8 i) :
    out3_27 (F := Ideal) x0 x1 x2 x3 x4 x5 x6 x7 x8 x9 x10 x11 x12 x13 x14 x15 x16 x17 x18 x19 x20 x21 x22 x23 x24 (ix2 r j) = ten3 A8 i 1 j * col A7 k := by
  rw [show @out3_27 = @out1_27 from rfl, Region1.out27_apply, h7, h8]

variable (V : (c : Dev nD) → (b : Ref sig .tc) → Buf (Elt Ideal) ((c : Thread nD τ).loc b)) (c : Dev nD)

def mlp : MLP3 :=
  MLP3.ofTiles (V c (Pipeline.arrRef spec3 19) : S1408x512.Idx → EReal) (V c (Pipeline.arrRef spec3 20) : S1x512.Idx → EReal)
    (V c (Pipeline.arrRef spec3 21) : S512x256.Idx → EReal) (V c (Pipeline.arrRef spec3 22) : S1x256.Idx → EReal)
    (V c (Pipeline.arrRef spec3 23) : S256x128.Idx → EReal) (V c (Pipeline.arrRef spec3 24) : S1x128.Idx → EReal)

def embW : EmbW :=
  EmbW.ofTiles (V c (Pipeline.arrRef spec3 11) : S32x128.Idx → EReal) (V c (Pipeline.arrRef spec3 12) : S1x128.Idx → EReal)
    (V c (Pipeline.arrRef spec3 13) : S32x128.Idx → EReal) (V c (Pipeline.arrRef spec3 14) : S1x128.Idx → EReal)
    (V c (Pipeline.arrRef spec3 15) : S1000x128.Idx → EReal) (V c (Pipeline.arrRef spec3 16) : S1x128.Idx → EReal)
    (V c (Pipeline.arrRef spec3 18) : S1x128.Idx → EReal)

def E : Fin 64512 → Fin 5 → Fin 128 → EReal := fun i =>
  embK (embW V c) (mat (V c (Pipeline.arrRef spec3 17) : S256x512.Idx → EReal))
    (mat (V c (Pipeline.arrRef spec3 0) : S64512x32.Idx → EReal) i) (mat (V c (Pipeline.arrRef spec3 1) : S64512x32.Idx → EReal) i)
    (mat (V c (Pipeline.arrRef spec3 2) : S64512x1000.Idx → EReal) i) (mat (V c (Pipeline.arrRef spec3 3) : S64512x256.Idx → EReal) i)
    (mat (V c (Pipeline.arrRef spec3 4) : S64512x256.Idx → EReal) i) (col (V c (Pipeline.arrRef spec3 5) : S64512x1.Idx → EReal) i)

def value : Carry 4096 :=
  stepK 4096 3072 (by norm_num) (E V c) (col (V c (Pipeline.arrRef spec3 6) : S64512x1.Idx → EReal))
    (col (V c (Pipeline.arrRef spec3 7) : S64512x1.Idx → EReal)) (mlp V c)
    (ten3 (V c (Pipeline.arrRef spec3 8) : S4096x2x128.Idx → EReal)) (ten3 (V c (Pipeline.arrRef spec3 9) : S4096x2x128.Idx → EReal))
    (ten3 (V c (Pipeline.arrRef spec3 10) : S4096x2x128.Idx → EReal))

theorem flushed25_eq (t : Fin cfg3.N) :
    (dat3 V c).flushed 25 t = ((cfg3.win 25).blk t).view.read (Elt Ideal) (arr2 (value V c).rep) := by
  show (cfg3.win 25).cut (grid3.coords t) ((dat3 V c).after 25 t) = _
  rw [after3_25]
  refine writeBack25_eq _ _ t fun r j i hi => ?_
  have hN : t.val < 4 := by have h := t.isLt; have e : cfg3.N = 4 := N_3; omega
  have hk : (⟨3072 + i.val, by omega⟩ : Fin 64512).val = 1024 * (3 + t.val) + r.val := by show 3072 + i.val = _; omega
  exact rep_point (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (iblk3 V c 24 t)
    (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (V c (Pipeline.arrRef spec3 11)) (V c (Pipeline.arrRef spec3 12)) (V c (Pipeline.arrRef spec3 13)) (V c (Pipeline.arrRef spec3 14)) (V c (Pipeline.arrRef spec3 15)) (V c (Pipeline.arrRef spec3 16)) (V c (Pipeline.arrRef spec3 17)) (V c (Pipeline.arrRef spec3 18)) (V c (Pipeline.arrRef spec3 19)) (V c (Pipeline.arrRef spec3 20)) (V c (Pipeline.arrRef spec3 21)) (V c (Pipeline.arrRef spec3 22)) (V c (Pipeline.arrRef spec3 23)) (V c (Pipeline.arrRef spec3 24))
    r j ⟨3072 + i.val, by omega⟩ i
    (funext fun q => block0_apply _ t r q _ hk)
    (funext fun q => block1_apply _ t r q _ hk)
    (funext fun q => block2_apply _ t r q _ hk)
    (funext fun q => block3_apply _ t r q _ hk)
    (funext fun q => block4_apply _ t r q _ hk)
    (block5_apply _ t r 0 _ hk)
    (block6_apply _ t r 0 _ hk)
    (block7_apply _ t r 0 _ hk)
    (funext fun s => funext fun q => block8_apply _ t r s q i hi)
    (funext fun s => funext fun q => block9_apply _ t r s q i hi)
    (funext fun s => funext fun q => block10_apply _ t r s q i hi)
    (block11_eq _ t)
    (block12_eq _ t)
    (block13_eq _ t)
    (block14_eq _ t)
    (block15_eq _ t)
    (block16_eq _ t)
    (block17_eq _ t)
    (block18_eq _ t)
    (block19_eq _ t)
    (block20_eq _ t)
    (block21_eq _ t)
    (block22_eq _ t)
    (block23_eq _ t)
    (block24_eq _ t)

theorem flushed26_eq (t : Fin cfg3.N) :
    (dat3 V c).flushed 26 t = ((cfg3.win 26).blk t).view.read (Elt Ideal) (arr2 (value V c).lrep) := by
  show (cfg3.win 26).cut (grid3.coords t) ((dat3 V c).after 26 t) = _
  rw [after3_26]
  refine writeBack26_eq _ _ t fun r j i hi => ?_
  have hN : t.val < 4 := by have h := t.isLt; have e : cfg3.N = 4 := N_3; omega
  have hk : (⟨3072 + i.val, by omega⟩ : Fin 64512).val = 1024 * (3 + t.val) + r.val := by show 3072 + i.val = _; omega
  exact lrep_point (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (iblk3 V c 24 t)
    (V c (Pipeline.arrRef spec3 6)) (V c (Pipeline.arrRef spec3 8)) r j ⟨3072 + i.val, by omega⟩ i
    (block6_apply _ t r 0 _ hk) (funext fun s => funext fun q => block8_apply _ t r s q i hi)

theorem flushed27_eq (t : Fin cfg3.N) :
    (dat3 V c).flushed 27 t = ((cfg3.win 27).blk t).view.read (Elt Ideal) (arr2 (value V c).rrep) := by
  show (cfg3.win 27).cut (grid3.coords t) ((dat3 V c).after 27 t) = _
  rw [after3_27]
  refine writeBack27_eq _ _ t fun r j i hi => ?_
  have hN : t.val < 4 := by have h := t.isLt; have e : cfg3.N = 4 := N_3; omega
  have hk : (⟨3072 + i.val, by omega⟩ : Fin 64512).val = 1024 * (3 + t.val) + r.val := by show 3072 + i.val = _; omega
  exact rrep_point (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (iblk3 V c 24 t)
    (V c (Pipeline.arrRef spec3 7)) (V c (Pipeline.arrRef spec3 8)) r j ⟨3072 + i.val, by omega⟩ i
    (block7_apply _ t r 0 _ hk) (funext fun s => funext fun q => block8_apply _ t r s q i hi)

theorem rep_eq : ((dat3 V c).arrAt 25 cfg3.N : S4096x128.Idx → EReal) = arr2 (value V c).rep := by
  exact (dat3 V c).arrAt_eq_of_cover 25 (arr2 (value V c).rep) (fun t _ => flushed25_eq V c t) (rowCover25 c)

theorem lrep_eq : ((dat3 V c).arrAt 26 cfg3.N : S4096x128.Idx → EReal) = arr2 (value V c).lrep := by
  exact (dat3 V c).arrAt_eq_of_cover 26 (arr2 (value V c).lrep) (fun t _ => flushed26_eq V c t) (rowCover26 c)

theorem rrep_eq : ((dat3 V c).arrAt 27 cfg3.N : S4096x128.Idx → EReal) = arr2 (value V c).rrep := by
  exact (dat3 V c).arrAt_eq_of_cover 27 (arr2 (value V c).rrep) (fun t _ => flushed27_eq V c t) (rowCover27 c)

end Cert.KernelIdeal.Region3

end
-- ==== Proof.KLevel2.lean ====
import proofs.«410031_j84061099917532_3_alg».proof.Proof.Gen.KernelIdeal.Frame
import proofs.«410031_j84061099917532_3_alg».proof.Proof.Spec
import proofs.«410031_j84061099917532_3_alg».proof.Proof.SpecPool
import proofs.«410031_j84061099917532_3_alg».proof.Proof.KArgs
import proofs.«410031_j84061099917532_3_alg».proof.Proof.KKeep
import proofs.«410031_j84061099917532_3_alg».proof.Proof.KStable
import proofs.«410031_j84061099917532_3_alg».proof.Proof.KBridge
import proofs.«410031_j84061099917532_3_alg».proof.Proof.KHost0
import proofs.«410031_j84061099917532_3_alg».proof.Proof.KHost3
import proofs.«410031_j84061099917532_3_alg».proof.Proof.R3Out

noncomputable section

open Idealize.ShloMosaic Idealize.ShloMosaic.TcCoe Idealize.SL.Sem
open TreeNN ValueIdx

namespace Cert.KernelIdeal.Chain

open Cert.KernelIdeal Cert.KernelIdeal.Gen

variable (m : (ℓ : Loc nD τ sig) → Buf (Elt Ideal) ℓ) (ρ : Dev nD → PrngReg) (c : Dev nD)

theorem fixed2_e (b : Ref sig .tc) (hf : b ∈ Stable.fixed) :
    W7 m ρ c (Proc.devRef .tc b) = W1 m ρ c (Proc.devRef .tc b) := Stable.W7_fixed m ρ c b hf

theorem arg2_e (b : Ref sig .tc) (hf : b ∈ Stable.fixed) (ha : b ∈ Stable.args) :
    W7 m ρ c (Proc.devRef .tc b) = W0 m ρ c (Proc.devRef .tc b) :=
  (Stable.W7_fixed m ρ c b hf).trans (Stable.W1_arg m ρ c b ha)

theorem arg2_b (b : Ref sig .tc) (hf : b ∈ Stable.fixed) (ha : b ∈ Stable.args) :
    W6 m ρ c (Proc.devRef .tc b) = W0 m ρ c (Proc.devRef .tc b) :=
  (Stable.W6_fixed m ρ c b hf).trans (Stable.W1_arg m ρ c b ha)

theorem mlp2_eq : Region3.mlp (V7 m ρ) c = pm m c := by
  unfold Region3.mlp pm
  exact mlp_bridge _ _ _ _ _ _ _ _ _ _ _ _
    (arg2_e m ρ c main_arg16 (fx 16 (by decide)) (ag 16 (by decide)))
    (fun j => (Host3.v61_apply m ρ c j).trans (congrFun (arg2_b m ρ c main_arg17 (fx 17 (by decide)) (ag 17 (by decide))) (ix1 j)))
    (arg2_e m ρ c main_arg18 (fx 18 (by decide)) (ag 18 (by decide)))
    (fun j => (Host3.v62_apply m ρ c j).trans (congrFun (arg2_b m ρ c main_arg19 (fx 19 (by decide)) (ag 19 (by decide))) (ix1 j)))
    (arg2_e m ρ c main_arg20 (fx 20 (by decide)) (ag 20 (by decide)))
    (fun j => (Host3.v63_apply m ρ c j).trans (congrFun (arg2_b m ρ c main_arg21 (fx 21 (by decide)) (ag 21 (by decide))) (ix1 j)))

theorem embW2_eq : Region3.embW (V7 m ρ) c =
    EmbW.ofArrays ((m ((c : Thread nD τ).loc main_arg8)) : S32x128.Idx → EReal) ((m ((c : Thread nD τ).loc main_arg9)) : S128.Idx → EReal)
      ((m ((c : Thread nD τ).loc main_arg10)) : S32x128.Idx → EReal) ((m ((c : Thread nD τ).loc main_arg11)) : S128.Idx → EReal)
      ((m ((c : Thread nD τ).loc main_arg12)) : S1000x128.Idx → EReal) ((m ((c : Thread nD τ).loc main_arg13)) : S128.Idx → EReal)
      ((m ((c : Thread nD τ).loc main_arg15)) : S128.Idx → EReal) := by
  unfold Region3.embW
  exact embW_bridge _ _ _ _ _ _ _ _ _ _ _ _ _ _
    (arg2_e m ρ c main_arg8 (fx 8 (by decide)) (ag 8 (by decide)))
    (fun j => (Host3.v57_apply m ρ c j).trans (congrFun (arg2_b m ρ c main_arg9 (fx 9 (by decide)) (ag 9 (by decide))) (ix1 j)))
    (arg2_e m ρ c main_arg10 (fx 10 (by decide)) (ag 10 (by decide)))
    (fun j => (Host3.v58_apply m ρ c j).trans (congrFun (arg2_b m ρ c main_arg11 (fx 11 (by decide)) (ag 11 (by decide))) (ix1 j)))
    (arg2_e m ρ c main_arg12 (fx 12 (by decide)) (ag 12 (by decide)))
    (fun j => (Host3.v59_apply m ρ c j).trans (congrFun (arg2_b m ρ c main_arg13 (fx 13 (by decide)) (ag 13 (by decide))) (ix1 j)))
    (fun j => (Host3.v60_apply m ρ c j).trans (congrFun (arg2_b m ρ c main_arg15 (fx 15 (by decide)) (ag 15 (by decide))) (ix1 j)))

theorem E2_eq : Region3.E (V7 m ρ) c = Em m c := by
  funext i
  unfold Region3.E Em embOfArrays
  rw [embW2_eq m ρ c]
  exact emb_bridge _ _ _ _ _ _ _ _ _ _ _ _ _ _ _
    (arg2_e m ρ c main_arg0 (fx 0 (by decide)) (ag 0 (by decide)))
    (arg2_e m ρ c main_arg1 (fx 1 (by decide)) (ag 1 (by decide)))
    (arg2_e m ρ c main_arg2 (fx 2 (by decide)) (ag 2 (by decide)))
    (fun k n => (congrFun (fixed2_e m ρ c main_v23 (fx 39 (by decide))) (ix2 k n)).trans (Host0.v23_apply m ρ c k n))
    (fun i k => (congrFun (fixed2_e m ρ c main_v0 (fx 34 (by decide))) (ix2 i k)).trans (Host0.v0_apply m ρ c i k))
    (fun i k => (congrFun (fixed2_e m ρ c main_v1 (fx 35 (by decide))) (ix2 i k)).trans (Host0.v1_apply m ρ c i k))
    (fun i => (congrFun (fixed2_e m ρ c main_v2 (fx 36 (by decide))) (ix2 i 0)).trans (Host0.v2_apply m ρ c i)) i

theorem lm2_eq : col (V7 m ρ c (Pipeline.arrRef spec3 6) : S64512x1.Idx → EReal) = lmm m c := by
  funext i
  exact (congrFun (fixed2_e m ρ c main_v4 (fx 37 (by decide))) (ix2 i 0)).trans (Host0.v4_apply m ρ c i)
theorem rm2_eq : col (V7 m ρ c (Pipeline.arrRef spec3 7) : S64512x1.Idx → EReal) = rmm m c := by
  funext i
  exact (congrFun (fixed2_e m ρ c main_v6 (fx 38 (by decide))) (ix2 i 0)).trans (Host0.v6_apply m ρ c i)

theorem kids2_rep (f : Fin 8192 → Fin 128 → EReal)
    (h : (W6 m ρ c (Proc.devRef .tc main_v53_0) : S8192x128.Idx → EReal) = arr2 f) :
    ten3 (V7 m ρ c (Pipeline.arrRef spec3 8) : S4096x2x128.Idx → EReal) = pair (n := 4096) (by norm_num) f :=
  kids_bridge _ _ _ f h (fun i s j => Host3.v54_apply m ρ c i s j)
theorem kids2_lrep (f : Fin 8192 → Fin 128 → EReal)
    (h : (W6 m ρ c (Proc.devRef .tc main_v53_1) : S8192x128.Idx → EReal) = arr2 f) :
    ten3 (V7 m ρ c (Pipeline.arrRef spec3 9) : S4096x2x128.Idx → EReal) = pair (n := 4096) (by norm_num) f :=
  kids_bridge _ _ _ f h (fun i s j => Host3.v55_apply m ρ c i s j)
theorem kids2_rrep (f : Fin 8192 → Fin 128 → EReal)
    (h : (W6 m ρ c (Proc.devRef .tc main_v53_2) : S8192x128.Idx → EReal) = arr2 f) :
    ten3 (V7 m ρ c (Pipeline.arrRef spec3 10) : S4096x2x128.Idx → EReal) = pair (n := 4096) (by norm_num) f :=
  kids_bridge _ _ _ f h (fun i s j => Host3.v56_apply m ρ c i s j)

theorem value2_eq (below : Carry 8192)
    (h0 : (W6 m ρ c (Proc.devRef .tc main_v53_0) : S8192x128.Idx → EReal) = arr2 below.rep)
    (h1 : (W6 m ρ c (Proc.devRef .tc main_v53_1) : S8192x128.Idx → EReal) = arr2 below.lrep)
    (h2 : (W6 m ρ c (Proc.devRef .tc main_v53_2) : S8192x128.Idx → EReal) = arr2 below.rrep) :
    Region3.value (V7 m ρ) c = step 4096 3072 (by norm_num) (by norm_num) (Em m c) (lmm m c) (rmm m c) (pm m c) below := by
  unfold Region3.value step
  rw [E2_eq m ρ c, lm2_eq m ρ c, rm2_eq m ρ c, mlp2_eq m ρ c, kids2_rep m ρ c below.rep h0,
    kids2_lrep m ρ c below.lrep h1, kids2_rrep m ρ c below.rrep h2]

theorem level2_eq
    (hbelow : (W6 m ρ c (Proc.devRef .tc main_v53_0) : S8192x128.Idx → EReal) = arr2 (level3 (Em m c) (lmm m c) (rmm m c) (pm m c)).rep
      ∧ (W6 m ρ c (Proc.devRef .tc main_v53_1) : S8192x128.Idx → EReal) = arr2 (level3 (Em m c) (lmm m c) (rmm m c) (pm m c)).lrep
      ∧ (W6 m ρ c (Proc.devRef .tc main_v53_2) : S8192x128.Idx → EReal) = arr2 (level3 (Em m c) (lmm m c) (rmm m c) (pm m c)).rrep) :
    (W8 m ρ c (Proc.devRef .tc main_v64_0) : S4096x128.Idx → EReal) = arr2 (level2 (Em m c) (lmm m c) (rmm m c) (pm m c)).rep
      ∧ (W8 m ρ c (Proc.devRef .tc main_v64_1) : S4096x128.Idx → EReal) = arr2 (level2 (Em m c) (lmm m c) (rmm m c) (pm m c)).lrep
      ∧ (W8 m ρ c (Proc.devRef .tc main_v64_2) : S4096x128.Idx → EReal) = arr2 (level2 (Em m c) (lmm m c) (rmm m c) (pm m c)).rrep := by
  have hv := value2_eq m ρ c _ hbelow.1 hbelow.2.1 hbelow.2.2
  refine ⟨?_, ?_, ?_⟩
  · exact ((W8_arr m ρ c 25).trans (Region3.rep_eq (V7 m ρ) c)).trans (congrArg (fun v : Carry 4096 => arr2 v.rep) hv)
  · exact ((W8_arr m ρ c 26).trans (Region3.lrep_eq (V7 m ρ) c)).trans (congrArg (fun v : Carry 4096 => arr2 v.lrep) hv)
  · exact ((W8_arr m ρ c 27).trans (Region3.rrep_eq (V7 m ρ) c)).trans (congrArg (fun v : Carry 4096 => arr2 v.rrep) hv)

end Cert.KernelIdeal.Chain

end
-- ==== Proof.KHost4.lean ====
import proofs.«410031_j84061099917532_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host4

open Cert.KernelIdeal Cert.KernelIdeal.Gen Idealize.ShloMosaic Idealize.ShloMosaic.TcCoe Idealize.ShloMosaic.ValueIdx
open Idealize.ShloMosaic.StableHlo

section Contents

variable (V : Valuation τ sig (Elt Ideal))

theorem v65_term : (StableHlo.after (hostOps4 (F := Ideal)) V (Proc.devRef .tc main_v65) : S2048x2x128.Idx → EReal) =
    shapeCast S2048x2x128 (V (Proc.devRef .tc main_v64_0) : S4096x128.Idx → EReal) Facts₀.shapeCasts_S4096x128_S2048x2x128 := by
  after_results; rfl

theorem v65_at (i : Fin 2048) (s : Fin 2) (j : Fin 128) :
    (StableHlo.after (hostOps4 (F := Ideal)) V (Proc.devRef .tc main_v65) : S2048x2x128.Idx → EReal) (ix3 i s j) =
      (V (Proc.devRef .tc main_v64_0) : S4096x128.Idx → EReal) (ix2 ⟨2 * i.val + s.val, by omega⟩ j) := by
  rw [v65_term]
  exact shapeCast_apply (s := S4096x128) (t := S2048x2x128) _ _ _ _ (by
    rw [Shape.rowMajor_val_three, Shape.rowMajor_val_two]
    show (2 * i.val + s.val) * 128 + j.val = (i.val * 2 + s.val) * 128 + j.val
    omega)

theorem v66_term : (StableHlo.after (hostOps4 (F := Ideal)) V (Proc.devRef .tc main_v66) : S2048x2x128.Idx → EReal) =
    shapeCast S2048x2x128 (V (Proc.devRef .tc main_v64_1) : S4096x128.Idx → EReal) Facts₀.shapeCasts_S4096x128_S2048x2x128 := by
  after_results; rfl

theorem v66_at (i : Fin 2048) (s : Fin 2) (j : Fin 128) :
    (StableHlo.after (hostOps4 (F := Ideal)) V (Proc.devRef .tc main_v66) : S2048x2x128.Idx → EReal) (ix3 i s j) =
      (V (Proc.devRef .tc main_v64_1) : S4096x128.Idx → EReal) (ix2 ⟨2 * i.val + s.val, by omega⟩ j) := by
  rw [v66_term]
  exact shapeCast_apply (s := S4096x128) (t := S2048x2x128) _ _ _ _ (by
    rw [Shape.rowMajor_val_three, Shape.rowMajor_val_two]
    show (2 * i.val + s.val) * 128 + j.val = (i.val * 2 + s.val) * 128 + j.val
    omega)

theorem v67_term : (StableHlo.after (hostOps4 (F := Ideal)) V (Proc.devRef .tc main_v67) : S2048x2x128.Idx → EReal) =
    shapeCast S2048x2x128 (V (Proc.devRef .tc main_v64_2) : S4096x128.Idx → EReal) Facts₀.shapeCasts_S4096x128_S2048x2x128 := by
  after_results; rfl

theorem v67_at (i : Fin 2048) (s : Fin 2) (j : Fin 128) :
    (StableHlo.after (hostOps4 (F := Ideal)) V (Proc.devRef .tc main_v67) : S2048x2x128.Idx → EReal) (ix3 i s j) =
      (V (Proc.devRef .tc main_v64_2) : S4096x128.Idx → EReal) (ix2 ⟨2 * i.val + s.val, by omega⟩ j) := by
  rw [v67_term]
  exact shapeCast_apply (s := S4096x128) (t := S2048x2x128) _ _ _ _ (by
    rw [Shape.rowMajor_val_three, Shape.rowMajor_val_two]
    show (2 * i.val + s.val) * 128 + j.val = (i.val * 2 + s.val) * 128 + j.val
    omega)

theorem v68_term : (StableHlo.after (hostOps4 (F := Ideal)) V (Proc.devRef .tc main_v68) : S1x128.Idx → EReal) =
    shapeCast S1x128 (V (Proc.devRef .tc main_arg9) : S128.Idx → EReal) Facts₀.shapeCasts_S128_S1x128 := by
  after_results; rfl

theorem v68_at (j : Fin 128) :
    (StableHlo.after (hostOps4 (F := Ideal)) V (Proc.devRef .tc main_v68) : S1x128.Idx → EReal) (ix2 0 j) =
      (V (Proc.devRef .tc main_arg9) : S128.Idx → EReal) (ix1 j) := by
  rw [v68_term]
  exact shapeCast_a_1a_apply (a := 128) _ _ 0 j

theorem v69_term : (StableHlo.after (hostOps4 (F := Ideal)) V (Proc.devRef .tc main_v69) : S1x128.Idx → EReal) =
    shapeCast S1x128 (V (Proc.devRef .tc main_arg11) : S128.Idx → EReal) Facts₀.shapeCasts_S128_S1x128 := by
  after_results; rfl

theorem v69_at (j : Fin 128) :
    (StableHlo.after (hostOps4 (F := Ideal)) V (Proc.devRef .tc main_v69) : S1x128.Idx → EReal) (ix2 0 j) =
      (V (Proc.devRef .tc main_arg11) : S128.Idx → EReal) (ix1 j) := by
  rw [v69_term]
  exact shapeCast_a_1a_apply (a := 128) _ _ 0 j

theorem v70_term : (StableHlo.after (hostOps4 (F := Ideal)) V (Proc.devRef .tc main_v70) : S1x128.Idx → EReal) =
    shapeCast S1x128 (V (Proc.devRef .tc main_arg13) : S128.Idx → EReal) Facts₀.shapeCasts_S128_S1x128 := by
  after_results; rfl

theorem v70_at (j : Fin 128) :
    (StableHlo.after (hostOps4 (F := Ideal)) V (Proc.devRef .tc main_v70) : S1x128.Idx → EReal) (ix2 0 j) =
      (V (Proc.devRef .tc main_arg13) : S128.Idx → EReal) (ix1 j) := by
  rw [v70_term]
  exact shapeCast_a_1a_apply (a := 128) _ _ 0 j

theorem v71_term : (StableHlo.after (hostOps4 (F := Ideal)) V (Proc.devRef .tc main_v71) : S1x128.Idx → EReal) =
    shapeCast S1x128 (V (Proc.devRef .tc main_arg15) : S128.Idx → EReal) Facts₀.shapeCasts_S128_S1x128 := by
  after_results; rfl

theorem v71_at (j : Fin 128) :
    (StableHlo.after (hostOps4 (F := Ideal)) V (Proc.devRef .tc main_v71) : S1x128.Idx → EReal) (ix2 0 j) =
      (V (Proc.devRef .tc main_arg15) : S128.Idx → EReal) (ix1 j) := by
  rw [v71_term]
  exact shapeCast_a_1a_apply (a := 128) _ _ 0 j

theorem v72_term : (StableHlo.after (hostOps4 (F := Ideal)) V (Proc.devRef .tc main_v72) : S1x512.Idx → EReal) =
    shapeCast S1x512 (V (Proc.devRef .tc main_arg17) : S512.Idx → EReal) Facts₀.shapeCasts_S512_S1x512 := by
  after_results; rfl

theorem v72_at (j : Fin 512) :
    (StableHlo.after (hostOps4 (F := Ideal)) V (Proc.devRef .tc main_v72) : S1x512.Idx → EReal) (ix2 0 j) =
      (V (Proc.devRef .tc main_arg17) : S512.Idx → EReal) (ix1 j) := by
  rw [v72_term]
  exact shapeCast_a_1a_apply (a := 512) _ _ 0 j

theorem v73_term : (StableHlo.after (hostOps4 (F := Ideal)) V (Proc.devRef .tc main_v73) : S1x256.Idx → EReal) =
    shapeCast S1x256 (V (Proc.devRef .tc main_arg19) : S256.Idx → EReal) Facts₀.shapeCasts_S256_S1x256 := by
  after_results; rfl

theorem v73_at (j : Fin 256) :
    (StableHlo.after (hostOps4 (F := Ideal)) V (Proc.devRef .tc main_v73) : S1x256.Idx → EReal) (ix2 0 j) =
      (V (Proc.devRef .tc main_arg19) : S256.Idx → EReal) (ix1 j) := by
  rw [v73_term]
  exact shapeCast_a_1a_apply (a := 256) _ _ 0 j

theorem v74_term : (StableHlo.after (hostOps4 (F := Ideal)) V (Proc.devRef .tc main_v74) : S1x128.Idx → EReal) =
    shapeCast S1x128 (V (Proc.devRef .tc main_arg21) : S128.Idx → EReal) Facts₀.shapeCasts_S128_S1x128 := by
  after_results; rfl

theorem v74_at (j : Fin 128) :
    (StableHlo.after (hostOps4 (F := Ideal)) V (Proc.devRef .tc main_v74) : S1x128.Idx → EReal) (ix2 0 j) =
      (V (Proc.devRef .tc main_arg21) : S128.Idx → EReal) (ix1 j) := by
  rw [v74_term]
  exact shapeCast_a_1a_apply (a := 128) _ _ 0 j

end Contents

variable (m : (ℓ : Loc nD τ sig) → Buf (Elt Ideal) ℓ) (ρ : Dev nD → PrngReg) (c : Dev nD)

theorem v65_apply (i : Fin 2048) (s : Fin 2) (j : Fin 128) :
    (W9 m ρ c (Proc.devRef .tc main_v65) : S2048x2x128.Idx → EReal) (ix3 i s j) =
      (W8 m ρ c (Proc.devRef .tc main_v64_0) : S4096x128.Idx → EReal) (ix2 ⟨2 * i.val + s.val, by omega⟩ j) :=
  v65_at (W8 m ρ c) i s j

theorem v66_apply (i : Fin 2048) (s : Fin 2) (j : Fin 128) :
    (W9 m ρ c (Proc.devRef .tc main_v66) : S2048x2x128.Idx → EReal) (ix3 i s j) =
      (W8 m ρ c (Proc.devRef .tc main_v64_1) : S4096x128.Idx → EReal) (ix2 ⟨2 * i.val + s.val, by omega⟩ j) :=
  v66_at (W8 m ρ c) i s j

theorem v67_apply (i : Fin 2048) (s : Fin 2) (j : Fin 128) :
    (W9 m ρ c (Proc.devRef .tc main_v67) : S2048x2x128.Idx → EReal) (ix3 i s j) =
      (W8 m ρ c (Proc.devRef .tc main_v64_2) : S4096x128.Idx → EReal) (ix2 ⟨2 * i.val + s.val, by omega⟩ j) :=
  v67_at (W8 m ρ c) i s j

theorem v68_apply (j : Fin 128) :
    (W9 m ρ c (Proc.devRef .tc main_v68) : S1x128.Idx → EReal) (ix2 0 j) =
      (W8 m ρ c (Proc.devRef .tc main_arg9) : S128.Idx → EReal) (ix1 j) :=
  v68_at (W8 m ρ c) j

theorem v69_apply (j : Fin 128) :
    (W9 m ρ c (Proc.devRef .tc main_v69) : S1x128.Idx → EReal) (ix2 0 j) =
      (W8 m ρ c (Proc.devRef .tc main_arg11) : S128.Idx → EReal) (ix1 j) :=
  v69_at (W8 m ρ c) j

theorem v70_apply (j : Fin 128) :
    (W9 m ρ c (Proc.devRef .tc main_v70) : S1x128.Idx → EReal) (ix2 0 j) =
      (W8 m ρ c (Proc.devRef .tc main_arg13) : S128.Idx → EReal) (ix1 j) :=
  v70_at (W8 m ρ c) j

theorem v71_apply (j : Fin 128) :
    (W9 m ρ c (Proc.devRef .tc main_v71) : S1x128.Idx → EReal) (ix2 0 j) =
      (W8 m ρ c (Proc.devRef .tc main_arg15) : S128.Idx → EReal) (ix1 j) :=
  v71_at (W8 m ρ c) j

theorem v72_apply (j : Fin 512) :
    (W9 m ρ c (Proc.devRef .tc main_v72) : S1x512.Idx → EReal) (ix2 0 j) =
      (W8 m ρ c (Proc.devRef .tc main_arg17) : S512.Idx → EReal) (ix1 j) :=
  v72_at (W8 m ρ c) j

theorem v73_apply (j : Fin 256) :
    (W9 m ρ c (Proc.devRef .tc main_v73) : S1x256.Idx → EReal) (ix2 0 j) =
      (W8 m ρ c (Proc.devRef .tc main_arg19) : S256.Idx → EReal) (ix1 j) :=
  v73_at (W8 m ρ c) j

theorem v74_apply (j : Fin 128) :
    (W9 m ρ c (Proc.devRef .tc main_v74) : S1x128.Idx → EReal) (ix2 0 j) =
      (W8 m ρ c (Proc.devRef .tc main_arg21) : S128.Idx → EReal) (ix1 j) :=
  v74_at (W8 m ρ c) j

end Cert.KernelIdeal.Host4
-- ==== Proof.R4Out.lean ====
import proofs.«410031_j84061099917532_3_alg».proof.Proof.Gen.KernelIdeal.Frame
import proofs.«410031_j84061099917532_3_alg».proof.Proof.R1Tile
import Idealize.ShloMosaic.Lib.Pipeline.Value
import Idealize.ShloMosaic.Lib.ValueIdx

noncomputable section

open Idealize.ShloMosaic Idealize.ShloMosaic.TcCoe Idealize.SL.Sem
open TreeNN ValueIdx

namespace Cert.KernelIdeal.Region4

open Cert.KernelIdeal Cert.KernelIdeal.Gen

theorem blockIdx0 : ∀ t : Fin cfg4.N, win4_0.index t (0 : Fin 2) = 1 + t.val ∧ win4_0.index t (1 : Fin 2) = 0 :=
  (by decide +kernel : ∀ t : Fin grid4.N, _)
theorem blockIdx1 : ∀ t : Fin cfg4.N, win4_1.index t (0 : Fin 2) = 1 + t.val ∧ win4_1.index t (1 : Fin 2) = 0 :=
  (by decide +kernel : ∀ t : Fin grid4.N, _)
theorem blockIdx2 : ∀ t : Fin cfg4.N, win4_2.index t (0 : Fin 2) = 1 + t.val ∧ win4_2.index t (1 : Fin 2) = 0 :=
  (by decide +kernel : ∀ t : Fin grid4.N, _)
theorem blockIdx3 : ∀ t : Fin cfg4.N, win4_3.index t (0 : Fin 2) = 1 + t.val ∧ win4_3.index t (1 : Fin 2) = 0 :=
  (by decide +kernel : ∀ t : Fin grid4.N, _)
theorem blockIdx4 : ∀ t : Fin cfg4.N, win4_4.index t (0 : Fin 2) = 1 + t.val ∧ win4_4.index t (1 : Fin 2) = 0 :=
  (by decide +kernel : ∀ t : Fin grid4.N, _)
theorem blockIdx5 : ∀ t : Fin cfg4.N, win4_5.index t (0 : Fin 2) = 1 + t.val ∧ win4_5.index t (1 : Fin 2) = 0 :=
  (by decide +kernel : ∀ t : Fin grid4.N, _)
theorem blockIdx6 : ∀ t : Fin cfg4.N, win4_6.index t (0 : Fin 2) = 1 + t.val ∧ win4_6.index t (1 : Fin 2) = 0 :=
  (by decide +kernel : ∀ t : Fin grid4.N, _)
theorem blockIdx7 : ∀ t : Fin cfg4.N, win4_7.index t (0 : Fin 2) = 1 + t.val ∧ win4_7.index t (1 : Fin 2) = 0 :=
  (by decide +kernel : ∀ t : Fin grid4.N, _)
theorem blockIdx8 : ∀ t : Fin cfg4.N, win4_8.index t (0 : Fin 3) = t.val ∧ win4_8.index t (1 : Fin 3) = 0 ∧ win4_8.index t (2 : Fin 3) = 0 :=
  (by decide +kernel : ∀ t : Fin grid4.N, _)
theorem blockIdx9 : ∀ t : Fin cfg4.N, win4_9.index t (0 : Fin 3) = t.val ∧ win4_9.index t (1 : Fin 3) = 0 ∧ win4_9.index t (2 : Fin 3) = 0 :=
  (by decide +kernel : ∀ t : Fin grid4.N, _)
theorem blockIdx10 : ∀ t : Fin cfg4.N, win4_10.index t (0 : Fin 3) = t.val ∧ win4_10.index t (1 : Fin 3) = 0 ∧ win4_10.index t (2 : Fin 3) = 0 :=
  (by decide +kernel : ∀ t : Fin grid4.N, _)
theorem blockIdx11 : ∀ t : Fin cfg4.N, win4_11.index t (0 : Fin 2) = 0 ∧ win4_11.index t (1 : Fin 2) = 0 :=
  (by decide +kernel : ∀ t : Fin grid4.N, _)
theorem blockIdx12 : ∀ t : Fin cfg4.N, win4_12.index t (0 : Fin 2) = 0 ∧ win4_12.index t (1 : Fin 2) = 0 :=
  (by decide +kernel : ∀ t : Fin grid4.N, _)
theorem blockIdx13 : ∀ t : Fin cfg4.N, win4_13.index t (0 : Fin 2) = 0 ∧ win4_13.index t (1 : Fin 2) = 0 :=
  (by decide +kernel : ∀ t : Fin grid4.N, _)
theorem blockIdx14 : ∀ t : Fin cfg4.N, win4_14.index t (0 : Fin 2) = 0 ∧ win4_14.index t (1 : Fin 2) = 0 :=
  (by decide +kernel : ∀ t : Fin grid4.N, _)
theorem blockIdx15 : ∀ t : Fin cfg4.N, win4_15.index t (0 : Fin 2) = 0 ∧ win4_15.index t (1 : Fin 2) = 0 :=
  (by decide +kernel : ∀ t : Fin grid4.N, _)
theorem blockIdx16 : ∀ t : Fin cfg4.N, win4_16.index t (0 : Fin 2) = 0 ∧ win4_16.index t (1 : Fin 2) = 0 :=
  (by decide +kernel : ∀ t : Fin grid4.N, _)
theorem blockIdx17 : ∀ t : Fin cfg4.N, win4_17.index t (0 : Fin 2) = 0 ∧ win4_17.index t (1 : Fin 2) = 0 :=
  (by decide +kernel : ∀ t : Fin grid4.N, _)
theorem blockIdx18 : ∀ t : Fin cfg4.N, win4_18.index t (0 : Fin 2) = 0 ∧ win4_18.index t (1 : Fin 2) = 0 :=
  (by decide +kernel : ∀ t : Fin grid4.N, _)
theorem blockIdx19 : ∀ t : Fin cfg4.N, win4_19.index t (0 : Fin 2) = 0 ∧ win4_19.index t (1 : Fin 2) = 0 :=
  (by decide +kernel : ∀ t : Fin grid4.N, _)
theorem blockIdx20 : ∀ t : Fin cfg4.N, win4_20.index t (0 : Fin 2) = 0 ∧ win4_20.index t (1 : Fin 2) = 0 :=
  (by decide +kernel : ∀ t : Fin grid4.N, _)
theorem blockIdx21 : ∀ t : Fin cfg4.N, win4_21.index t (0 : Fin 2) = 0 ∧ win4_21.index t (1 : Fin 2) = 0 :=
  (by decide +kernel : ∀ t : Fin grid4.N, _)
theorem blockIdx22 : ∀ t : Fin cfg4.N, win4_22.index t (0 : Fin 2) = 0 ∧ win4_22.index t (1 : Fin 2) = 0 :=
  (by decide +kernel : ∀ t : Fin grid4.N, _)
theorem blockIdx23 : ∀ t : Fin cfg4.N, win4_23.index t (0 : Fin 2) = 0 ∧ win4_23.index t (1 : Fin 2) = 0 :=
  (by decide +kernel : ∀ t : Fin grid4.N, _)
theorem blockIdx24 : ∀ t : Fin cfg4.N, win4_24.index t (0 : Fin 2) = 0 ∧ win4_24.index t (1 : Fin 2) = 0 :=
  (by decide +kernel : ∀ t : Fin grid4.N, _)
theorem blockIdx25 : ∀ t : Fin cfg4.N, win4_25.index t (0 : Fin 2) = t.val ∧ win4_25.index t (1 : Fin 2) = 0 :=
  (by decide +kernel : ∀ t : Fin grid4.N, _)
theorem blockIdx26 : ∀ t : Fin cfg4.N, win4_26.index t (0 : Fin 2) = t.val ∧ win4_26.index t (1 : Fin 2) = 0 :=
  (by decide +kernel : ∀ t : Fin grid4.N, _)
theorem blockIdx27 : ∀ t : Fin cfg4.N, win4_27.index t (0 : Fin 2) = t.val ∧ win4_27.index t (1 : Fin 2) = 0 :=
  (by decide +kernel : ∀ t : Fin grid4.N, _)

theorem block0_apply (A : S64512x32.Idx → EReal) (t : Fin cfg4.N) (r : Fin 1024) (q : Fin 32) (k : Fin 64512)
    (hk : k.val = 1024 * (1 + t.val) + r.val) :
    ((cfg4.win 0).blk t).view.read (Elt Ideal) A (ix2 r q) = A (ix2 k q) := by
  rw [View.read_apply]
  show A _ = A _
  congr 1
  funext a
  apply Fin.ext
  match a with
  | ⟨0, _⟩ => show win4_0.index t (0 : Fin 2) * 1024 + 1 * r.val = k.val; rw [(blockIdx0 t).1, hk]; omega
  | ⟨1, _⟩ => show win4_0.index t (1 : Fin 2) * 32 + 1 * q.val = q.val; rw [(blockIdx0 t).2]; omega

theorem block1_apply (A : S64512x32.Idx → EReal) (t : Fin cfg4.N) (r : Fin 1024) (q : Fin 32) (k : Fin 64512)
    (hk : k.val = 1024 * (1 + t.val) + r.val) :
    ((cfg4.win 1).blk t).view.read (Elt Ideal) A (ix2 r q) = A (ix2 k q) := by
  rw [View.read_apply]
  show A _ = A _
  congr 1
  funext a
  apply Fin.ext
  match a with
  | ⟨0, _⟩ => show win4_1.index t (0 : Fin 2) * 1024 + 1 * r.val = k.val; rw [(blockIdx1 t).1, hk]; omega
  | ⟨1, _⟩ => show win4_1.index t (1 : Fin 2) * 32 + 1 * q.val = q.val; rw [(blockIdx1 t).2]; omega

theorem block2_apply (A : S64512x1000.Idx → EReal) (t : Fin cfg4.N) (r : Fin 1024) (q : Fin 1000) (k : Fin 64512)
    (hk : k.val = 1024 * (1 + t.val) + r.val) :
    ((cfg4.win 2).blk t).view.read (Elt Ideal) A (ix2 r q) = A (ix2 k q) := by
  rw [View.read_apply]
  show A _ = A _
  congr 1
  funext a
  apply Fin.ext
  match a with
  | ⟨0, _⟩ => show win4_2.index t (0 : Fin 2) * 1024 + 1 * r.val = k.val; rw [(blockIdx2 t).1, hk]; omega
  | ⟨1, _⟩ => show win4_2.index t (1 : Fin 2) * 1000 + 1 * q.val = q.val; rw [(blockIdx2 t).2]; omega

theorem block3_apply (A : S64512x256.Idx → EReal) (t : Fin cfg4.N) (r : Fin 1024) (q : Fin 256) (k : Fin 64512)
    (hk : k.val = 1024 * (1 + t.val) + r.val) :
    ((cfg4.win 3).blk t).view.read (Elt Ideal) A (ix2 r q) = A (ix2 k q) := by
  rw [View.read_apply]
  show A _ = A _
  congr 1
  funext a
  apply Fin.ext
  match a with
  | ⟨0, _⟩ => show win4_3.index t (0 : Fin 2) * 1024 + 1 * r.val = k.val; rw [(blockIdx3 t).1, hk]; omega
  | ⟨1, _⟩ => show win4_3.index t (1 : Fin 2) * 256 + 1 * q.val = q.val; rw [(blockIdx3 t).2]; omega

theorem block4_apply (A : S64512x256.Idx → EReal) (t : Fin cfg4.N) (r : Fin 1024) (q : Fin 256) (k : Fin 64512)
    (hk : k.val = 1024 * (1 + t.val) + r.val) :
    ((cfg4.win 4).blk t).view.read (Elt Ideal) A (ix2 r q) = A (ix2 k q) := by
  rw [View.read_apply]
  show A _ = A _
  congr 1
  funext a
  apply Fin.ext
  match a with
  | ⟨0, _⟩ => show win4_4.index t (0 : Fin 2) * 1024 + 1 * r.val = k.val; rw [(blockIdx4 t).1, hk]; omega
  | ⟨1, _⟩ => show win4_4.index t (1 : Fin 2) * 256 + 1 * q.val = q.val; rw [(blockIdx4 t).2]; omega

theorem block5_apply (A : S64512x1.Idx → EReal) (t : Fin cfg4.N) (r : Fin 1024) (q : Fin 1) (k : Fin 64512)
    (hk : k.val = 1024 * (1 + t.val) + r.val) :
    ((cfg4.win 5).blk t).view.read (Elt Ideal) A (ix2 r q) = A (ix2 k q) := by
  rw [View.read_apply]
  show A _ = A _
  congr 1
  funext a
  apply Fin.ext
  match a with
  | ⟨0, _⟩ => show win4_5.index t (0 : Fin 2) * 1024 + 1 * r.val = k.val; rw [(blockIdx5 t).1, hk]; omega
  | ⟨1, _⟩ => show win4_5.index t (1 : Fin 2) * 1 + 1 * q.val = q.val; rw [(blockIdx5 t).2]; omega

theorem block6_apply (A : S64512x1.Idx → EReal) (t : Fin cfg4.N) (r : Fin 1024) (q : Fin 1) (k : Fin 64512)
    (hk : k.val = 1024 * (1 + t.val) + r.val) :
    ((cfg4.win 6).blk t).view.read (Elt Ideal) A (ix2 r q) = A (ix2 k q) := by
  rw [View.read_apply]
  show A _ = A _
  congr 1
  funext a
  apply Fin.ext
  match a with
  | ⟨0, _⟩ => show win4_6.index t (0 : Fin 2) * 1024 + 1 * r.val = k.val; rw [(blockIdx6 t).1, hk]; omega
  | ⟨1, _⟩ => show win4_6.index t (1 : Fin 2) * 1 + 1 * q.val = q.val; rw [(blockIdx6 t).2]; omega

theorem block7_apply (A : S64512x1.Idx → EReal) (t : Fin cfg4.N) (r : Fin 1024) (q : Fin 1) (k : Fin 64512)
    (hk : k.val = 1024 * (1 + t.val) + r.val) :
    ((cfg4.win 7).blk t).view.read (Elt Ideal) A (ix2 r q) = A (ix2 k q) := by
  rw [View.read_apply]
  show A _ = A _
  congr 1
  funext a
  apply Fin.ext
  match a with
  | ⟨0, _⟩ => show win4_7.index t (0 : Fin 2) * 1024 + 1 * r.val = k.val; rw [(blockIdx7 t).1, hk]; omega
  | ⟨1, _⟩ => show win4_7.index t (1 : Fin 2) * 1 + 1 * q.val = q.val; rw [(blockIdx7 t).2]; omega

theorem block8_apply (A : S2048x2x128.Idx → EReal) (t : Fin cfg4.N) (r : Fin 1024) (s : Fin 2) (q : Fin 128) (i : Fin 2048)
    (hi : i.val = 1024 * t.val + r.val) :
    ((cfg4.win 8).blk t).view.read (Elt Ideal) A (ix3 r s q) = A (ix3 i s q) := by
  rw [View.read_apply]
  show A _ = A _
  congr 1
  funext a
  apply Fin.ext
  match a with
  | ⟨0, _⟩ => show win4_8.index t (0 : Fin 3) * 1024 + 1 * r.val = i.val; rw [(blockIdx8 t).1, hi]; omega
  | ⟨1, _⟩ => show win4_8.index t (1 : Fin 3) * 2 + 1 * s.val = s.val; rw [(blockIdx8 t).2.1]; omega
  | ⟨2, _⟩ => show win4_8.index t (2 : Fin 3) * 128 + 1 * q.val = q.val; rw [(blockIdx8 t).2.2]; omega

theorem block9_apply (A : S2048x2x128.Idx → EReal) (t : Fin cfg4.N) (r : Fin 1024) (s : Fin 2) (q : Fin 128) (i : Fin 2048)
    (hi : i.val = 1024 * t.val + r.val) :
    ((cfg4.win 9).blk t).view.read (Elt Ideal) A (ix3 r s q) = A (ix3 i s q) := by
  rw [View.read_apply]
  show A _ = A _
  congr 1
  funext a
  apply Fin.ext
  match a with
  | ⟨0, _⟩ => show win4_9.index t (0 : Fin 3) * 1024 + 1 * r.val = i.val; rw [(blockIdx9 t).1, hi]; omega
  | ⟨1, _⟩ => show win4_9.index t (1 : Fin 3) * 2 + 1 * s.val = s.val; rw [(blockIdx9 t).2.1]; omega
  | ⟨2, _⟩ => show win4_9.index t (2 : Fin 3) * 128 + 1 * q.val = q.val; rw [(blockIdx9 t).2.2]; omega

theorem block10_apply (A : S2048x2x128.Idx → EReal) (t : Fin cfg4.N) (r : Fin 1024) (s : Fin 2) (q : Fin 128) (i : Fin 2048)
    (hi : i.val = 1024 * t.val + r.val) :
    ((cfg4.win 10).blk t).view.read (Elt Ideal) A (ix3 r s q) = A (ix3 i s q) := by
  rw [View.read_apply]
  show A _ = A _
  congr 1
  funext a
  apply Fin.ext
  match a with
  | ⟨0, _⟩ => show win4_10.index t (0 : Fin 3) * 1024 + 1 * r.val = i.val; rw [(blockIdx10 t).1, hi]; omega
  | ⟨1, _⟩ => show win4_10.index t (1 : Fin 3) * 2 + 1 * s.val = s.val; rw [(blockIdx10 t).2.1]; omega
  | ⟨2, _⟩ => show win4_10.index t (2 : Fin 3) * 128 + 1 * q.val = q.val; rw [(blockIdx10 t).2.2]; omega

theorem block11_eq (A : S32x128.Idx → EReal) (t : Fin cfg4.N) :
    (((cfg4.win 11).blk t).view.read (Elt Ideal) A : S32x128.Idx → EReal) = A := by
  funext x
  rw [View.read_apply]
  show A _ = A _
  congr 1
  funext a
  apply Fin.ext
  match a with
  | ⟨0, _⟩ => show win4_11.index t (0 : Fin 2) * 32 + 1 * (x 0).val = (x 0).val; rw [(blockIdx11 t).1]; omega
  | ⟨1, _⟩ => show win4_11.index t (1 : Fin 2) * 128 + 1 * (x 1).val = (x 1).val; rw [(blockIdx11 t).2]; omega

theorem block12_eq (A : S1x128.Idx → EReal) (t : Fin cfg4.N) :
    (((cfg4.win 12).blk t).view.read (Elt Ideal) A : S1x128.Idx → EReal) = A := by
  funext x
  rw [View.read_apply]
  show A _ = A _
  congr 1
  funext a
  apply Fin.ext
  match a with
  | ⟨0, _⟩ => show win4_12.index t (0 : Fin 2) * 1 + 1 * (x 0).val = (x 0).val; rw [(blockIdx12 t).1]; omega
  | ⟨1, _⟩ => show win4_12.index t (1 : Fin 2) * 128 + 1 * (x 1).val = (x 1).val; rw [(blockIdx12 t).2]; omega

theorem block13_eq (A : S32x128.Idx → EReal) (t : Fin cfg4.N) :
    (((cfg4.win 13).blk t).view.read (Elt Ideal) A : S32x128.Idx → EReal) = A := by
  funext x
  rw [View.read_apply]
  show A _ = A _
  congr 1
  funext a
  apply Fin.ext
  match a with
  | ⟨0, _⟩ => show win4_13.index t (0 : Fin 2) * 32 + 1 * (x 0).val = (x 0).val; rw [(blockIdx13 t).1]; omega
  | ⟨1, _⟩ => show win4_13.index t (1 : Fin 2) * 128 + 1 * (x 1).val = (x 1).val; rw [(blockIdx13 t).2]; omega

theorem block14_eq (A : S1x128.Idx → EReal) (t : Fin cfg4.N) :
    (((cfg4.win 14).blk t).view.read (Elt Ideal) A : S1x128.Idx → EReal) = A := by
  funext x
  rw [View.read_apply]
  show A _ = A _
  congr 1
  funext a
  apply Fin.ext
  match a with
  | ⟨0, _⟩ => show win4_14.index t (0 : Fin 2) * 1 + 1 * (x 0).val = (x 0).val; rw [(blockIdx14 t).1]; omega
  | ⟨1, _⟩ => show win4_14.index t (1 : Fin 2) * 128 + 1 * (x 1).val = (x 1).val; rw [(blockIdx14 t).2]; omega

theorem block15_eq (A : S1000x128.Idx → EReal) (t : Fin cfg4.N) :
    (((cfg4.win 15).blk t).view.read (Elt Ideal) A : S1000x128.Idx → EReal) = A := by
  funext x
  rw [View.read_apply]
  show A _ = A _
  congr 1
  funext a
  apply Fin.ext
  match a with
  | ⟨0, _⟩ => show win4_15.index t (0 : Fin 2) * 1000 + 1 * (x 0).val = (x 0).val; rw [(blockIdx15 t).1]; omega
  | ⟨1, _⟩ => show win4_15.index t (1 : Fin 2) * 128 + 1 * (x 1).val = (x 1).val; rw [(blockIdx15 t).2]; omega

theorem block16_eq (A : S1x128.Idx → EReal) (t : Fin cfg4.N) :
    (((cfg4.win 16).blk t).view.read (Elt Ideal) A : S1x128.Idx → EReal) = A := by
  funext x
  rw [View.read_apply]
  show A _ = A _
  congr 1
  funext a
  apply Fin.ext
  match a with
  | ⟨0, _⟩ => show win4_16.index t (0 : Fin 2) * 1 + 1 * (x 0).val = (x 0).val; rw [(blockIdx16 t).1]; omega
  | ⟨1, _⟩ => show win4_16.index t (1 : Fin 2) * 128 + 1 * (x 1).val = (x 1).val; rw [(blockIdx16 t).2]; omega

theorem block17_eq (A : S256x512.Idx → EReal) (t : Fin cfg4.N) :
    (((cfg4.win 17).blk t).view.read (Elt Ideal) A : S256x512.Idx → EReal) = A := by
  funext x
  rw [View.read_apply]
  show A _ = A _
  congr 1
  funext a
  apply Fin.ext
  match a with
  | ⟨0, _⟩ => show win4_17.index t (0 : Fin 2) * 256 + 1 * (x 0).val = (x 0).val; rw [(blockIdx17 t).1]; omega
  | ⟨1, _⟩ => show win4_17.index t (1 : Fin 2) * 512 + 1 * (x 1).val = (x 1).val; rw [(blockIdx17 t).2]; omega

theorem block18_eq (A : S1x128.Idx → EReal) (t : Fin cfg4.N) :
    (((cfg4.win 18).blk t).view.read (Elt Ideal) A : S1x128.Idx → EReal) = A := by
  funext x
  rw [View.read_apply]
  show A _ = A _
  congr 1
  funext a
  apply Fin.ext
  match a with
  | ⟨0, _⟩ => show win4_18.index t (0 : Fin 2) * 1 + 1 * (x 0).val = (x 0).val; rw [(blockIdx18 t).1]; omega
  | ⟨1, _⟩ => show win4_18.index t (1 : Fin 2) * 128 + 1 * (x 1).val = (x 1).val; rw [(blockIdx18 t).2]; omega

theorem block19_eq (A : S1408x512.Idx → EReal) (t : Fin cfg4.N) :
    (((cfg4.win 19).blk t).view.read (Elt Ideal) A : S1408x512.Idx → EReal) = A := by
  funext x
  rw [View.read_apply]
  show A _ = A _
  congr 1
  funext a
  apply Fin.ext
  match a with
  | ⟨0, _⟩ => show win4_19.index t (0 : Fin 2) * 1408 + 1 * (x 0).val = (x 0).val; rw [(blockIdx19 t).1]; omega
  | ⟨1, _⟩ => show win4_19.index t (1 : Fin 2) * 512 + 1 * (x 1).val = (x 1).val; rw [(blockIdx19 t).2]; omega

theorem block20_eq (A : S1x512.Idx → EReal) (t : Fin cfg4.N) :
    (((cfg4.win 20).blk t).view.read (Elt Ideal) A : S1x512.Idx → EReal) = A := by
  funext x
  rw [View.read_apply]
  show A _ = A _
  congr 1
  funext a
  apply Fin.ext
  match a with
  | ⟨0, _⟩ => show win4_20.index t (0 : Fin 2) * 1 + 1 * (x 0).val = (x 0).val; rw [(blockIdx20 t).1]; omega
  | ⟨1, _⟩ => show win4_20.index t (1 : Fin 2) * 512 + 1 * (x 1).val = (x 1).val; rw [(blockIdx20 t).2]; omega

theorem block21_eq (A : S512x256.Idx → EReal) (t : Fin cfg4.N) :
    (((cfg4.win 21).blk t).view.read (Elt Ideal) A : S512x256.Idx → EReal) = A := by
  funext x
  rw [View.read_apply]
  show A _ = A _
  congr 1
  funext a
  apply Fin.ext
  match a with
  | ⟨0, _⟩ => show win4_21.index t (0 : Fin 2) * 512 + 1 * (x 0).val = (x 0).val; rw [(blockIdx21 t).1]; omega
  | ⟨1, _⟩ => show win4_21.index t (1 : Fin 2) * 256 + 1 * (x 1).val = (x 1).val; rw [(blockIdx21 t).2]; omega

theorem block22_eq (A : S1x256.Idx → EReal) (t : Fin cfg4.N) :
    (((cfg4.win 22).blk t).view.read (Elt Ideal) A : S1x256.Idx → EReal) = A := by
  funext x
  rw [View.read_apply]
  show A _ = A _
  congr 1
  funext a
  apply Fin.ext
  match a with
  | ⟨0, _⟩ => show win4_22.index t (0 : Fin 2) * 1 + 1 * (x 0).val = (x 0).val; rw [(blockIdx22 t).1]; omega
  | ⟨1, _⟩ => show win4_22.index t (1 : Fin 2) * 256 + 1 * (x 1).val = (x 1).val; rw [(blockIdx22 t).2]; omega

theorem block23_eq (A : S256x128.Idx → EReal) (t : Fin cfg4.N) :
    (((cfg4.win 23).blk t).view.read (Elt Ideal) A : S256x128.Idx → EReal) = A := by
  funext x
  rw [View.read_apply]
  show A _ = A _
  congr 1
  funext a
  apply Fin.ext
  match a with
  | ⟨0, _⟩ => show win4_23.index t (0 : Fin 2) * 256 + 1 * (x 0).val = (x 0).val; rw [(blockIdx23 t).1]; omega
  | ⟨1, _⟩ => show win4_23.index t (1 : Fin 2) * 128 + 1 * (x 1).val = (x 1).val; rw [(blockIdx23 t).2]; omega

theorem block24_eq (A : S1x128.Idx → EReal) (t : Fin cfg4.N) :
    (((cfg4.win 24).blk t).view.read (Elt Ideal) A : S1x128.Idx → EReal) = A := by
  funext x
  rw [View.read_apply]
  show A _ = A _
  congr 1
  funext a
  apply Fin.ext
  match a with
  | ⟨0, _⟩ => show win4_24.index t (0 : Fin 2) * 1 + 1 * (x 0).val = (x 0).val; rw [(blockIdx24 t).1]; omega
  | ⟨1, _⟩ => show win4_24.index t (1 : Fin 2) * 128 + 1 * (x 1).val = (x 1).val; rw [(blockIdx24 t).2]; omega

theorem writeBack25_eq (X : S1024x128.Idx → EReal) (G : S2048x128.Idx → EReal) (t : Fin cfg4.N)
    (h : ∀ (r : Fin 1024) (j : Fin 128) (i : Fin 2048), i.val = 1024 * t.val + r.val → X (ix2 r j) = G (ix2 i j)) :
    (cfg4.win 25).cut (grid4.coords t) X = ((cfg4.win 25).blk t).view.read (Elt Ideal) G := by
  funext y
  rw [View.read_apply]
  show X ((cfg4.win 25).xinj (grid4.coords t) y) = G (((cfg4.win 25).blk t).view.emb y)
  have hy : (cfg4.win 25).xinj (grid4.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 2 := by have h := t.isLt; have e : cfg4.N = 2 := N_4; omega
  have he : ((cfg4.win 25).blk t).view.emb y = ix2 (⟨1024 * t.val + (y 0).val, by omega⟩ : Fin 2048) (⟨(y 1).val, (y 1).isLt⟩ : Fin 128) := by
    funext a
    apply Fin.ext
    match a with
    | ⟨0, _⟩ => show win4_25.index t (0 : Fin 2) * 1024 + 1 * (y 0).val = 1024 * t.val + (y 0).val; rw [(blockIdx25 t).1]; omega
    | ⟨1, _⟩ => show win4_25.index t (1 : Fin 2) * 128 + 1 * (y 1).val = (y 1).val; rw [(blockIdx25 t).2]; omega
  rw [hy, he]
  exact h _ _ _ rfl

theorem rowCover25 (c : Dev nD) (i : ((cfg4.win 25).arr.view.loc (c.tc : Thread nD τ)).2.ty.Idx) :
    ∃ t : Fin cfg4.N, (cfg4.win 25).flush t = true ∧ i ∈ ((cfg4.win 25).blk t).view.set := by
  have h0 : (i 0).val < 2048 := (i 0).isLt
  have h1 : (i 1).val < 128 := (i 1).isLt
  have hlt : (i 0).val / 1024 < cfg4.N := by show _ < grid4.N; rw [N_4]; omega
  refine ⟨⟨(i 0).val / 1024, hlt⟩, flush4_25 _, ?_⟩
  show i ∈ ((View.whole main_v75_0).slice (win4_25.rect ⟨(i 0).val / 1024, hlt⟩)).set
  rw [View.set_slice_whole, Rect.mem_set_unit]
  intro a
  match a with
  | ⟨0, _⟩ =>
    show win4_25.index ⟨(i 0).val / 1024, hlt⟩ (0 : Fin 2) * 1024 ≤ (i 0).val ∧ (i 0).val < win4_25.index ⟨(i 0).val / 1024, hlt⟩ (0 : Fin 2) * 1024 + 1024
    rw [(blockIdx25 _).1]; show (i 0).val / 1024 * 1024 ≤ _ ∧ _ < (i 0).val / 1024 * 1024 + 1024; omega
  | ⟨1, _⟩ =>
    show win4_25.index ⟨(i 0).val / 1024, hlt⟩ (1 : Fin 2) * 128 ≤ (i 1).val ∧ (i 1).val < win4_25.index ⟨(i 0).val / 1024, hlt⟩ (1 : Fin 2) * 128 + 128
    rw [(blockIdx25 _).2]; omega

theorem writeBack26_eq (X : S1024x128.Idx → EReal) (G : S2048x128.Idx → EReal) (t : Fin cfg4.N)
    (h : ∀ (r : Fin 1024) (j : Fin 128) (i : Fin 2048), i.val = 1024 * t.val + r.val → X (ix2 r j) = G (ix2 i j)) :
    (cfg4.win 26).cut (grid4.coords t) X = ((cfg4.win 26).blk t).view.read (Elt Ideal) G := by
  funext y
  rw [View.read_apply]
  show X ((cfg4.win 26).xinj (grid4.coords t) y) = G (((cfg4.win 26).blk t).view.emb y)
  have hy : (cfg4.win 26).xinj (grid4.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 2 := by have h := t.isLt; have e : cfg4.N = 2 := N_4; omega
  have he : ((cfg4.win 26).blk t).view.emb y = ix2 (⟨1024 * t.val + (y 0).val, by omega⟩ : Fin 2048) (⟨(y 1).val, (y 1).isLt⟩ : Fin 128) := by
    funext a
    apply Fin.ext
    match a with
    | ⟨0, _⟩ => show win4_26.index t (0 : Fin 2) * 1024 + 1 * (y 0).val = 1024 * t.val + (y 0).val; rw [(blockIdx26 t).1]; omega
    | ⟨1, _⟩ => show win4_26.index t (1 : Fin 2) * 128 + 1 * (y 1).val = (y 1).val; rw [(blockIdx26 t).2]; omega
  rw [hy, he]
  exact h _ _ _ rfl

theorem rowCover26 (c : Dev nD) (i : ((cfg4.win 26).arr.view.loc (c.tc : Thread nD τ)).2.ty.Idx) :
    ∃ t : Fin cfg4.N, (cfg4.win 26).flush t = true ∧ i ∈ ((cfg4.win 26).blk t).view.set := by
  have h0 : (i 0).val < 2048 := (i 0).isLt
  have h1 : (i 1).val < 128 := (i 1).isLt
  have hlt : (i 0).val / 1024 < cfg4.N := by show _ < grid4.N; rw [N_4]; omega
  refine ⟨⟨(i 0).val / 1024, hlt⟩, flush4_26 _, ?_⟩
  show i ∈ ((View.whole main_v75_1).slice (win4_26.rect ⟨(i 0).val / 1024, hlt⟩)).set
  rw [View.set_slice_whole, Rect.mem_set_unit]
  intro a
  match a with
  | ⟨0, _⟩ =>
    show win4_26.index ⟨(i 0).val / 1024, hlt⟩ (0 : Fin 2) * 1024 ≤ (i 0).val ∧ (i 0).val < win4_26.index ⟨(i 0).val / 1024, hlt⟩ (0 : Fin 2) * 1024 + 1024
    rw [(blockIdx26 _).1]; show (i 0).val / 1024 * 1024 ≤ _ ∧ _ < (i 0).val / 1024 * 1024 + 1024; omega
  | ⟨1, _⟩ =>
    show win4_26.index ⟨(i 0).val / 1024, hlt⟩ (1 : Fin 2) * 128 ≤ (i 1).val ∧ (i 1).val < win4_26.index ⟨(i 0).val / 1024, hlt⟩ (1 : Fin 2) * 128 + 128
    rw [(blockIdx26 _).2]; omega

theorem writeBack27_eq (X : S1024x128.Idx → EReal) (G : S2048x128.Idx → EReal) (t : Fin cfg4.N)
    (h : ∀ (r : Fin 1024) (j : Fin 128) (i : Fin 2048), i.val = 1024 * t.val + r.val → X (ix2 r j) = G (ix2 i j)) :
    (cfg4.win 27).cut (grid4.coords t) X = ((cfg4.win 27).blk t).view.read (Elt Ideal) G := by
  funext y
  rw [View.read_apply]
  show X ((cfg4.win 27).xinj (grid4.coords t) y) = G (((cfg4.win 27).blk t).view.emb y)
  have hy : (cfg4.win 27).xinj (grid4.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 2 := by have h := t.isLt; have e : cfg4.N = 2 := N_4; omega
  have he : ((cfg4.win 27).blk t).view.emb y = ix2 (⟨1024 * t.val + (y 0).val, by omega⟩ : Fin 2048) (⟨(y 1).val, (y 1).isLt⟩ : Fin 128) := by
    funext a
    apply Fin.ext
    match a with
    | ⟨0, _⟩ => show win4_27.index t (0 : Fin 2) * 1024 + 1 * (y 0).val = 1024 * t.val + (y 0).val; rw [(blockIdx27 t).1]; omega
    | ⟨1, _⟩ => show win4_27.index t (1 : Fin 2) * 128 + 1 * (y 1).val = (y 1).val; rw [(blockIdx27 t).2]; omega
  rw [hy, he]
  exact h _ _ _ rfl

theorem rowCover27 (c : Dev nD) (i : ((cfg4.win 27).arr.view.loc (c.tc : Thread nD τ)).2.ty.Idx) :
    ∃ t : Fin cfg4.N, (cfg4.win 27).flush t = true ∧ i ∈ ((cfg4.win 27).blk t).view.set := by
  have h0 : (i 0).val < 2048 := (i 0).isLt
  have h1 : (i 1).val < 128 := (i 1).isLt
  have hlt : (i 0).val / 1024 < cfg4.N := by show _ < grid4.N; rw [N_4]; omega
  refine ⟨⟨(i 0).val / 1024, hlt⟩, flush4_27 _, ?_⟩
  show i ∈ ((View.whole main_v75_2).slice (win4_27.rect ⟨(i 0).val / 1024, hlt⟩)).set
  rw [View.set_slice_whole, Rect.mem_set_unit]
  intro a
  match a with
  | ⟨0, _⟩ =>
    show win4_27.index ⟨(i 0).val / 1024, hlt⟩ (0 : Fin 2) * 1024 ≤ (i 0).val ∧ (i 0).val < win4_27.index ⟨(i 0).val / 1024, hlt⟩ (0 : Fin 2) * 1024 + 1024
    rw [(blockIdx27 _).1]; show (i 0).val / 1024 * 1024 ≤ _ ∧ _ < (i 0).val / 1024 * 1024 + 1024; omega
  | ⟨1, _⟩ =>
    show win4_27.index ⟨(i 0).val / 1024, hlt⟩ (1 : Fin 2) * 128 ≤ (i 1).val ∧ (i 1).val < win4_27.index ⟨(i 0).val / 1024, hlt⟩ (1 : Fin 2) * 128 + 128
    rw [(blockIdx27 _).2]; omega

theorem rep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A0 : S64512x32.Idx → EReal) (A1 : S64512x32.Idx → EReal) (A2 : S64512x1000.Idx → EReal) (A3 : S64512x256.Idx → EReal) (A4 : S64512x256.Idx → EReal) (A5 : S64512x1.Idx → EReal) (A6 : S64512x1.Idx → EReal) (A7 : S64512x1.Idx → EReal) (A8 : S2048x2x128.Idx → EReal) (A9 : S2048x2x128.Idx → EReal) (A10 : S2048x2x128.Idx → EReal) (A11 : S32x128.Idx → EReal) (A12 : S1x128.Idx → EReal) (A13 : S32x128.Idx → EReal) (A14 : S1x128.Idx → EReal) (A15 : S1000x128.Idx → EReal) (A16 : S1x128.Idx → EReal) (A17 : S256x512.Idx → EReal) (A18 : S1x128.Idx → EReal) (A19 : S1408x512.Idx → EReal) (A20 : S1x512.Idx → EReal) (A21 : S512x256.Idx → EReal) (A22 : S1x256.Idx → EReal) (A23 : S256x128.Idx → EReal) (A24 : S1x128.Idx → EReal)
    (r : Fin 1024) (j : Fin 128) (k : Fin 64512) (i : Fin 2048)
    (h0 : mat x0 r = mat A0 k) (h1 : mat x1 r = mat A1 k) (h2 : mat x2 r = mat A2 k) (h3 : mat x3 r = mat A3 k) (h4 : mat x4 r = mat A4 k) (h5 : col x5 r = col A5 k) (h6 : col x6 r = col A6 k) (h7 : col x7 r = col A7 k) (h8 : ten3 x8 r = ten3 A8 i) (h9 : ten3 x9 r = ten3 A9 i) (h10 : ten3 x10 r = ten3 A10 i) (h11 : x11 = A11) (h12 : x12 = A12) (h13 : x13 = A13) (h14 : x14 = A14) (h15 : x15 = A15) (h16 : x16 = A16) (h17 : x17 = A17) (h18 : x18 = A18) (h19 : x19 = A19) (h20 : x20 = A20) (h21 : x21 = A21) (h22 : x22 = A22) (h23 : x23 = A23) (h24 : x24 = A24) :
    out4_25 (F := Ideal) x0 x1 x2 x3 x4 x5 x6 x7 x8 x9 x10 x11 x12 x13 x14 x15 x16 x17 x18 x19 x20 x21 x22 x23 x24 (ix2 r j)
      = nodeRep (MLP3.ofTiles A19 A20 A21 A22 A23 A24)
          (embK (EmbW.ofTiles A11 A12 A13 A14 A15 A16 A18) (mat A17) (mat A0 k) (mat A1 k) (mat A2 k) (mat A3 k) (mat A4 k) (col A5 k))
          (col A6 k) (col A7 k) (ten3 A8 i) (ten3 A9 i) (ten3 A10 i) j := by
  subst h11 h12 h13 h14 h15 h16 h17 h18 h19 h20 h21 h22 h23 h24
  rw [show @out4_25 = @out1_25 from rfl, Region1.out25_apply, h0, h1, h2, h3, h4, h5, h6, h7, h8, h9, h10]

theorem lrep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A6 : S64512x1.Idx → EReal) (A8 : S2048x2x128.Idx → EReal)
    (r : Fin 1024) (j : Fin 128) (k : Fin 64512) (i : Fin 2048)
    (h6 : col x6 r = col A6 k) (h8 : ten3 x8 r = ten3 A8 i) :
    out4_26 (F := Ideal) x0 x1 x2 x3 x4 x5 x6 x7 x8 x9 x10 x11 x12 x13 x14 x15 x16 x17 x18 x19 x20 x21 x22 x23 x24 (ix2 r j) = ten3 A8 i 0 j * col A6 k := by
  rw [show @out4_26 = @out1_26 from rfl, Region1.out26_apply, h6, h8]

theorem rrep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A7 : S64512x1.Idx → EReal) (A8 : S2048x2x128.Idx → EReal)
    (r : Fin 1024) (j : Fin 128) (k : Fin 64512) (i : Fin 2048)
    (h7 : col x7 r = col A7 k) (h8 : ten3 x8 r = ten3 A8 i) :
    out4_27 (F := Ideal) x0 x1 x2 x3 x4 x5 x6 x7 x8 x9 x10 x11 x12 x13 x14 x15 x16 x17 x18 x19 x20 x21 x22 x23 x24 (ix2 r j) = ten3 A8 i 1 j * col A7 k := by
  rw [show @out4_27 = @out1_27 from rfl, Region1.out27_apply, h7, h8]

variable (V : (c : Dev nD) → (b : Ref sig .tc) → Buf (Elt Ideal) ((c : Thread nD τ).loc b)) (c : Dev nD)

def mlp : MLP3 :=
  MLP3.ofTiles (V c (Pipeline.arrRef spec4 19) : S1408x512.Idx → EReal) (V c (Pipeline.arrRef spec4 20) : S1x512.Idx → EReal)
    (V c (Pipeline.arrRef spec4 21) : S512x256.Idx → EReal) (V c (Pipeline.arrRef spec4 22) : S1x256.Idx → EReal)
    (V c (Pipeline.arrRef spec4 23) : S256x128.Idx → EReal) (V c (Pipeline.arrRef spec4 24) : S1x128.Idx → EReal)

def embW : EmbW :=
  EmbW.ofTiles (V c (Pipeline.arrRef spec4 11) : S32x128.Idx → EReal) (V c (Pipeline.arrRef spec4 12) : S1x128.Idx → EReal)
    (V c (Pipeline.arrRef spec4 13) : S32x128.Idx → EReal) (V c (Pipeline.arrRef spec4 14) : S1x128.Idx → EReal)
    (V c (Pipeline.arrRef spec4 15) : S1000x128.Idx → EReal) (V c (Pipeline.arrRef spec4 16) : S1x128.Idx → EReal)
    (V c (Pipeline.arrRef spec4 18) : S1x128.Idx → EReal)

def E : Fin 64512 → Fin 5 → Fin 128 → EReal := fun i =>
  embK (embW V c) (mat (V c (Pipeline.arrRef spec4 17) : S256x512.Idx → EReal))
    (mat (V c (Pipeline.arrRef spec4 0) : S64512x32.Idx → EReal) i) (mat (V c (Pipeline.arrRef spec4 1) : S64512x32.Idx → EReal) i)
    (mat (V c (Pipeline.arrRef spec4 2) : S64512x1000.Idx → EReal) i) (mat (V c (Pipeline.arrRef spec4 3) : S64512x256.Idx → EReal) i)
    (mat (V c (Pipeline.arrRef spec4 4) : S64512x256.Idx → EReal) i) (col (V c (Pipeline.arrRef spec4 5) : S64512x1.Idx → EReal) i)

def value : Carry 2048 :=
  stepK 2048 1024 (by norm_num) (E V c) (col (V c (Pipeline.arrRef spec4 6) : S64512x1.Idx → EReal))
    (col (V c (Pipeline.arrRef spec4 7) : S64512x1.Idx → EReal)) (mlp V c)
    (ten3 (V c (Pipeline.arrRef spec4 8) : S2048x2x128.Idx → EReal)) (ten3 (V c (Pipeline.arrRef spec4 9) : S2048x2x128.Idx → EReal))
    (ten3 (V c (Pipeline.arrRef spec4 10) : S2048x2x128.Idx → EReal))

theorem flushed25_eq (t : Fin cfg4.N) :
    (dat4 V c).flushed 25 t = ((cfg4.win 25).blk t).view.read (Elt Ideal) (arr2 (value V c).rep) := by
  show (cfg4.win 25).cut (grid4.coords t) ((dat4 V c).after 25 t) = _
  rw [after4_25]
  refine writeBack25_eq _ _ t fun r j i hi => ?_
  have hN : t.val < 2 := by have h := t.isLt; have e : cfg4.N = 2 := N_4; omega
  have hk : (⟨1024 + i.val, by omega⟩ : Fin 64512).val = 1024 * (1 + t.val) + r.val := by show 1024 + i.val = _; omega
  exact rep_point (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) (iblk4 V c 20 t) (iblk4 V c 21 t) (iblk4 V c 22 t) (iblk4 V c 23 t) (iblk4 V c 24 t)
    (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) (V c (Pipeline.arrRef spec4 9)) (V c (Pipeline.arrRef spec4 10)) (V c (Pipeline.arrRef spec4 11)) (V c (Pipeline.arrRef spec4 12)) (V c (Pipeline.arrRef spec4 13)) (V c (Pipeline.arrRef spec4 14)) (V c (Pipeline.arrRef spec4 15)) (V c (Pipeline.arrRef spec4 16)) (V c (Pipeline.arrRef spec4 17)) (V c (Pipeline.arrRef spec4 18)) (V c (Pipeline.arrRef spec4 19)) (V c (Pipeline.arrRef spec4 20)) (V c (Pipeline.arrRef spec4 21)) (V c (Pipeline.arrRef spec4 22)) (V c (Pipeline.arrRef spec4 23)) (V c (Pipeline.arrRef spec4 24))
    r j ⟨1024 + i.val, by omega⟩ i
    (funext fun q => block0_apply _ t r q _ hk)
    (funext fun q => block1_apply _ t r q _ hk)
    (funext fun q => block2_apply _ t r q _ hk)
    (funext fun q => block3_apply _ t r q _ hk)
    (funext fun q => block4_apply _ t r q _ hk)
    (block5_apply _ t r 0 _ hk)
    (block6_apply _ t r 0 _ hk)
    (block7_apply _ t r 0 _ hk)
    (funext fun s => funext fun q => block8_apply _ t r s q i hi)
    (funext fun s => funext fun q => block9_apply _ t r s q i hi)
    (funext fun s => funext fun q => block10_apply _ t r s q i hi)
    (block11_eq _ t)
    (block12_eq _ t)
    (block13_eq _ t)
    (block14_eq _ t)
    (block15_eq _ t)
    (block16_eq _ t)
    (block17_eq _ t)
    (block18_eq _ t)
    (block19_eq _ t)
    (block20_eq _ t)
    (block21_eq _ t)
    (block22_eq _ t)
    (block23_eq _ t)
    (block24_eq _ t)

theorem flushed26_eq (t : Fin cfg4.N) :
    (dat4 V c).flushed 26 t = ((cfg4.win 26).blk t).view.read (Elt Ideal) (arr2 (value V c).lrep) := by
  show (cfg4.win 26).cut (grid4.coords t) ((dat4 V c).after 26 t) = _
  rw [after4_26]
  refine writeBack26_eq _ _ t fun r j i hi => ?_
  have hN : t.val < 2 := by have h := t.isLt; have e : cfg4.N = 2 := N_4; omega
  have hk : (⟨1024 + i.val, by omega⟩ : Fin 64512).val = 1024 * (1 + t.val) + r.val := by show 1024 + i.val = _; omega
  exact lrep_point (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) (iblk4 V c 20 t) (iblk4 V c 21 t) (iblk4 V c 22 t) (iblk4 V c 23 t) (iblk4 V c 24 t)
    (V c (Pipeline.arrRef spec4 6)) (V c (Pipeline.arrRef spec4 8)) r j ⟨1024 + i.val, by omega⟩ i
    (block6_apply _ t r 0 _ hk) (funext fun s => funext fun q => block8_apply _ t r s q i hi)

theorem flushed27_eq (t : Fin cfg4.N) :
    (dat4 V c).flushed 27 t = ((cfg4.win 27).blk t).view.read (Elt Ideal) (arr2 (value V c).rrep) := by
  show (cfg4.win 27).cut (grid4.coords t) ((dat4 V c).after 27 t) = _
  rw [after4_27]
  refine writeBack27_eq _ _ t fun r j i hi => ?_
  have hN : t.val < 2 := by have h := t.isLt; have e : cfg4.N = 2 := N_4; omega
  have hk : (⟨1024 + i.val, by omega⟩ : Fin 64512).val = 1024 * (1 + t.val) + r.val := by show 1024 + i.val = _; omega
  exact rrep_point (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) (iblk4 V c 16 t) (iblk4 V c 17 t) (iblk4 V c 18 t) (iblk4 V c 19 t) (iblk4 V c 20 t) (iblk4 V c 21 t) (iblk4 V c 22 t) (iblk4 V c 23 t) (iblk4 V c 24 t)
    (V c (Pipeline.arrRef spec4 7)) (V c (Pipeline.arrRef spec4 8)) r j ⟨1024 + i.val, by omega⟩ i
    (block7_apply _ t r 0 _ hk) (funext fun s => funext fun q => block8_apply _ t r s q i hi)

theorem rep_eq : ((dat4 V c).arrAt 25 cfg4.N : S2048x128.Idx → EReal) = arr2 (value V c).rep := by
  exact (dat4 V c).arrAt_eq_of_cover 25 (arr2 (value V c).rep) (fun t _ => flushed25_eq V c t) (rowCover25 c)

theorem lrep_eq : ((dat4 V c).arrAt 26 cfg4.N : S2048x128.Idx → EReal) = arr2 (value V c).lrep := by
  exact (dat4 V c).arrAt_eq_of_cover 26 (arr2 (value V c).lrep) (fun t _ => flushed26_eq V c t) (rowCover26 c)

theorem rrep_eq : ((dat4 V c).arrAt 27 cfg4.N : S2048x128.Idx → EReal) = arr2 (value V c).rrep := by
  exact (dat4 V c).arrAt_eq_of_cover 27 (arr2 (value V c).rrep) (fun t _ => flushed27_eq V c t) (rowCover27 c)

end Cert.KernelIdeal.Region4

end
-- ==== Proof.KLevel1.lean ====
import proofs.«410031_j84061099917532_3_alg».proof.Proof.Gen.KernelIdeal.Frame
import proofs.«410031_j84061099917532_3_alg».proof.Proof.Spec
import proofs.«410031_j84061099917532_3_alg».proof.Proof.SpecPool
import proofs.«410031_j84061099917532_3_alg».proof.Proof.KArgs
import proofs.«410031_j84061099917532_3_alg».proof.Proof.KKeep
import proofs.«410031_j84061099917532_3_alg».proof.Proof.KStable
import proofs.«410031_j84061099917532_3_alg».proof.Proof.KBridge
import proofs.«410031_j84061099917532_3_alg».proof.Proof.KHost0
import proofs.«410031_j84061099917532_3_alg».proof.Proof.KHost4
import proofs.«410031_j84061099917532_3_alg».proof.Proof.R4Out

noncomputable section

open Idealize.ShloMosaic Idealize.ShloMosaic.TcCoe Idealize.SL.Sem
open TreeNN ValueIdx

namespace Cert.KernelIdeal.Chain

open Cert.KernelIdeal Cert.KernelIdeal.Gen

variable (m : (ℓ : Loc nD τ sig) → Buf (Elt Ideal) ℓ) (ρ : Dev nD → PrngReg) (c : Dev nD)

theorem fixed1_e (b : Ref sig .tc) (hf : b ∈ Stable.fixed) :
    W9 m ρ c (Proc.devRef .tc b) = W1 m ρ c (Proc.devRef .tc b) := Stable.W9_fixed m ρ c b hf

theorem arg1_e (b : Ref sig .tc) (hf : b ∈ Stable.fixed) (ha : b ∈ Stable.args) :
    W9 m ρ c (Proc.devRef .tc b) = W0 m ρ c (Proc.devRef .tc b) :=
  (Stable.W9_fixed m ρ c b hf).trans (Stable.W1_arg m ρ c b ha)

theorem arg1_b (b : Ref sig .tc) (hf : b ∈ Stable.fixed) (ha : b ∈ Stable.args) :
    W8 m ρ c (Proc.devRef .tc b) = W0 m ρ c (Proc.devRef .tc b) :=
  (Stable.W8_fixed m ρ c b hf).trans (Stable.W1_arg m ρ c b ha)

theorem mlp1_eq : Region4.mlp (V9 m ρ) c = pm m c := by
  unfold Region4.mlp pm
  exact mlp_bridge _ _ _ _ _ _ _ _ _ _ _ _
    (arg1_e m ρ c main_arg16 (fx 16 (by decide)) (ag 16 (by decide)))
    (fun j => (Host4.v72_apply m ρ c j).trans (congrFun (arg1_b m ρ c main_arg17 (fx 17 (by decide)) (ag 17 (by decide))) (ix1 j)))
    (arg1_e m ρ c main_arg18 (fx 18 (by decide)) (ag 18 (by decide)))
    (fun j => (Host4.v73_apply m ρ c j).trans (congrFun (arg1_b m ρ c main_arg19 (fx 19 (by decide)) (ag 19 (by decide))) (ix1 j)))
    (arg1_e m ρ c main_arg20 (fx 20 (by decide)) (ag 20 (by decide)))
    (fun j => (Host4.v74_apply m ρ c j).trans (congrFun (arg1_b m ρ c main_arg21 (fx 21 (by decide)) (ag 21 (by decide))) (ix1 j)))

theorem embW1_eq : Region4.embW (V9 m ρ) c =
    EmbW.ofArrays ((m ((c : Thread nD τ).loc main_arg8)) : S32x128.Idx → EReal) ((m ((c : Thread nD τ).loc main_arg9)) : S128.Idx → EReal)
      ((m ((c : Thread nD τ).loc main_arg10)) : S32x128.Idx → EReal) ((m ((c : Thread nD τ).loc main_arg11)) : S128.Idx → EReal)
      ((m ((c : Thread nD τ).loc main_arg12)) : S1000x128.Idx → EReal) ((m ((c : Thread nD τ).loc main_arg13)) : S128.Idx → EReal)
      ((m ((c : Thread nD τ).loc main_arg15)) : S128.Idx → EReal) := by
  unfold Region4.embW
  exact embW_bridge _ _ _ _ _ _ _ _ _ _ _ _ _ _
    (arg1_e m ρ c main_arg8 (fx 8 (by decide)) (ag 8 (by decide)))
    (fun j => (Host4.v68_apply m ρ c j).trans (congrFun (arg1_b m ρ c main_arg9 (fx 9 (by decide)) (ag 9 (by decide))) (ix1 j)))
    (arg1_e m ρ c main_arg10 (fx 10 (by decide)) (ag 10 (by decide)))
    (fun j => (Host4.v69_apply m ρ c j).trans (congrFun (arg1_b m ρ c main_arg11 (fx 11 (by decide)) (ag 11 (by decide))) (ix1 j)))
    (arg1_e m ρ c main_arg12 (fx 12 (by decide)) (ag 12 (by decide)))
    (fun j => (Host4.v70_apply m ρ c j).trans (congrFun (arg1_b m ρ c main_arg13 (fx 13 (by decide)) (ag 13 (by decide))) (ix1 j)))
    (fun j => (Host4.v71_apply m ρ c j).trans (congrFun (arg1_b m ρ c main_arg15 (fx 15 (by decide)) (ag 15 (by decide))) (ix1 j)))

theorem E1_eq : Region4.E (V9 m ρ) c = Em m c := by
  funext i
  unfold Region4.E Em embOfArrays
  rw [embW1_eq m ρ c]
  exact emb_bridge _ _ _ _ _ _ _ _ _ _ _ _ _ _ _
    (arg1_e m ρ c main_arg0 (fx 0 (by decide)) (ag 0 (by decide)))
    (arg1_e m ρ c main_arg1 (fx 1 (by decide)) (ag 1 (by decide)))
    (arg1_e m ρ c main_arg2 (fx 2 (by decide)) (ag 2 (by decide)))
    (fun k n => (congrFun (fixed1_e m ρ c main_v23 (fx 39 (by decide))) (ix2 k n)).trans (Host0.v23_apply m ρ c k n))
    (fun i k => (congrFun (fixed1_e m ρ c main_v0 (fx 34 (by decide))) (ix2 i k)).trans (Host0.v0_apply m ρ c i k))
    (fun i k => (congrFun (fixed1_e m ρ c main_v1 (fx 35 (by decide))) (ix2 i k)).trans (Host0.v1_apply m ρ c i k))
    (fun i => (congrFun (fixed1_e m ρ c main_v2 (fx 36 (by decide))) (ix2 i 0)).trans (Host0.v2_apply m ρ c i)) i

theorem lm1_eq : col (V9 m ρ c (Pipeline.arrRef spec4 6) : S64512x1.Idx → EReal) = lmm m c := by
  funext i
  exact (congrFun (fixed1_e m ρ c main_v4 (fx 37 (by decide))) (ix2 i 0)).trans (Host0.v4_apply m ρ c i)
theorem rm1_eq : col (V9 m ρ c (Pipeline.arrRef spec4 7) : S64512x1.Idx → EReal) = rmm m c := by
  funext i
  exact (congrFun (fixed1_e m ρ c main_v6 (fx 38 (by decide))) (ix2 i 0)).trans (Host0.v6_apply m ρ c i)

theorem kids1_rep (f : Fin 4096 → Fin 128 → EReal)
    (h : (W8 m ρ c (Proc.devRef .tc main_v64_0) : S4096x128.Idx → EReal) = arr2 f) :
    ten3 (V9 m ρ c (Pipeline.arrRef spec4 8) : S2048x2x128.Idx → EReal) = pair (n := 2048) (by norm_num) f :=
  kids_bridge _ _ _ f h (fun i s j => Host4.v65_apply m ρ c i s j)
theorem kids1_lrep (f : Fin 4096 → Fin 128 → EReal)
    (h : (W8 m ρ c (Proc.devRef .tc main_v64_1) : S4096x128.Idx → EReal) = arr2 f) :
    ten3 (V9 m ρ c (Pipeline.arrRef spec4 9) : S2048x2x128.Idx → EReal) = pair (n := 2048) (by norm_num) f :=
  kids_bridge _ _ _ f h (fun i s j => Host4.v66_apply m ρ c i s j)
theorem kids1_rrep (f : Fin 4096 → Fin 128 → EReal)
    (h : (W8 m ρ c (Proc.devRef .tc main_v64_2) : S4096x128.Idx → EReal) = arr2 f) :
    ten3 (V9 m ρ c (Pipeline.arrRef spec4 10) : S2048x2x128.Idx → EReal) = pair (n := 2048) (by norm_num) f :=
  kids_bridge _ _ _ f h (fun i s j => Host4.v67_apply m ρ c i s j)

theorem value1_eq (below : Carry 4096)
    (h0 : (W8 m ρ c (Proc.devRef .tc main_v64_0) : S4096x128.Idx → EReal) = arr2 below.rep)
    (h1 : (W8 m ρ c (Proc.devRef .tc main_v64_1) : S4096x128.Idx → EReal) = arr2 below.lrep)
    (h2 : (W8 m ρ c (Proc.devRef .tc main_v64_2) : S4096x128.Idx → EReal) = arr2 below.rrep) :
    Region4.value (V9 m ρ) c = step 2048 1024 (by norm_num) (by norm_num) (Em m c) (lmm m c) (rmm m c) (pm m c) below := by
  unfold Region4.value step
  rw [E1_eq m ρ c, lm1_eq m ρ c, rm1_eq m ρ c, mlp1_eq m ρ c, kids1_rep m ρ c below.rep h0,
    kids1_lrep m ρ c below.lrep h1, kids1_rrep m ρ c below.rrep h2]

theorem level1_eq
    (hbelow : (W8 m ρ c (Proc.devRef .tc main_v64_0) : S4096x128.Idx → EReal) = arr2 (level2 (Em m c) (lmm m c) (rmm m c) (pm m c)).rep
      ∧ (W8 m ρ c (Proc.devRef .tc main_v64_1) : S4096x128.Idx → EReal) = arr2 (level2 (Em m c) (lmm m c) (rmm m c) (pm m c)).lrep
      ∧ (W8 m ρ c (Proc.devRef .tc main_v64_2) : S4096x128.Idx → EReal) = arr2 (level2 (Em m c) (lmm m c) (rmm m c) (pm m c)).rrep) :
    (W10 m ρ c (Proc.devRef .tc main_v75_0) : S2048x128.Idx → EReal) = arr2 (level1 (Em m c) (lmm m c) (rmm m c) (pm m c)).rep
      ∧ (W10 m ρ c (Proc.devRef .tc main_v75_1) : S2048x128.Idx → EReal) = arr2 (level1 (Em m c) (lmm m c) (rmm m c) (pm m c)).lrep
      ∧ (W10 m ρ c (Proc.devRef .tc main_v75_2) : S2048x128.Idx → EReal) = arr2 (level1 (Em m c) (lmm m c) (rmm m c) (pm m c)).rrep := by
  have hv := value1_eq m ρ c _ hbelow.1 hbelow.2.1 hbelow.2.2
  refine ⟨?_, ?_, ?_⟩
  · exact ((W10_arr m ρ c 25).trans (Region4.rep_eq (V9 m ρ) c)).trans (congrArg (fun v : Carry 2048 => arr2 v.rep) hv)
  · exact ((W10_arr m ρ c 26).trans (Region4.lrep_eq (V9 m ρ) c)).trans (congrArg (fun v : Carry 2048 => arr2 v.lrep) hv)
  · exact ((W10_arr m ρ c 27).trans (Region4.rrep_eq (V9 m ρ) c)).trans (congrArg (fun v : Carry 2048 => arr2 v.rrep) hv)

end Cert.KernelIdeal.Chain

end
-- ==== Proof.KHost5.lean ====
import proofs.«410031_j84061099917532_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host5

open Cert.KernelIdeal Cert.KernelIdeal.Gen Idealize.ShloMosaic Idealize.ShloMosaic.TcCoe Idealize.ShloMosaic.ValueIdx
open Idealize.ShloMosaic.StableHlo

section Contents

variable (V : Valuation τ sig (Elt Ideal))

theorem v76_term : (StableHlo.after (hostOps5 (F := Ideal)) V (Proc.devRef .tc main_v76) : S1024x2x128.Idx → EReal) =
    shapeCast S1024x2x128 (V (Proc.devRef .tc main_v75_0) : S2048x128.Idx → EReal) Facts₀.shapeCasts_S2048x128_S1024x2x128 := by
  after_results; rfl

theorem v76_at (i : Fin 1024) (s : Fin 2) (j : Fin 128) :
    (StableHlo.after (hostOps5 (F := Ideal)) V (Proc.devRef .tc main_v76) : S1024x2x128.Idx → EReal) (ix3 i s j) =
      (V (Proc.devRef .tc main_v75_0) : S2048x128.Idx → EReal) (ix2 ⟨2 * i.val + s.val, by omega⟩ j) := by
  rw [v76_term]
  exact shapeCast_apply (s := S2048x128) (t := S1024x2x128) _ _ _ _ (by
    rw [Shape.rowMajor_val_three, Shape.rowMajor_val_two]
    show (2 * i.val + s.val) * 128 + j.val = (i.val * 2 + s.val) * 128 + j.val
    omega)

theorem v77_term : (StableHlo.after (hostOps5 (F := Ideal)) V (Proc.devRef .tc main_v77) : S1024x2x128.Idx → EReal) =
    shapeCast S1024x2x128 (V (Proc.devRef .tc main_v75_1) : S2048x128.Idx → EReal) Facts₀.shapeCasts_S2048x128_S1024x2x128 := by
  after_results; rfl

theorem v77_at (i : Fin 1024) (s : Fin 2) (j : Fin 128) :
    (StableHlo.after (hostOps5 (F := Ideal)) V (Proc.devRef .tc main_v77) : S1024x2x128.Idx → EReal) (ix3 i s j) =
      (V (Proc.devRef .tc main_v75_1) : S2048x128.Idx → EReal) (ix2 ⟨2 * i.val + s.val, by omega⟩ j) := by
  rw [v77_term]
  exact shapeCast_apply (s := S2048x128) (t := S1024x2x128) _ _ _ _ (by
    rw [Shape.rowMajor_val_three, Shape.rowMajor_val_two]
    show (2 * i.val + s.val) * 128 + j.val = (i.val * 2 + s.val) * 128 + j.val
    omega)

theorem v78_term : (StableHlo.after (hostOps5 (F := Ideal)) V (Proc.devRef .tc main_v78) : S1024x2x128.Idx → EReal) =
    shapeCast S1024x2x128 (V (Proc.devRef .tc main_v75_2) : S2048x128.Idx → EReal) Facts₀.shapeCasts_S2048x128_S1024x2x128 := by
  after_results; rfl

theorem v78_at (i : Fin 1024) (s : Fin 2) (j : Fin 128) :
    (StableHlo.after (hostOps5 (F := Ideal)) V (Proc.devRef .tc main_v78) : S1024x2x128.Idx → EReal) (ix3 i s j) =
      (V (Proc.devRef .tc main_v75_2) : S2048x128.Idx → EReal) (ix2 ⟨2 * i.val + s.val, by omega⟩ j) := by
  rw [v78_term]
  exact shapeCast_apply (s := S2048x128) (t := S1024x2x128) _ _ _ _ (by
    rw [Shape.rowMajor_val_three, Shape.rowMajor_val_two]
    show (2 * i.val + s.val) * 128 + j.val = (i.val * 2 + s.val) * 128 + j.val
    omega)

theorem v79_term : (StableHlo.after (hostOps5 (F := Ideal)) V (Proc.devRef .tc main_v79) : S1x128.Idx → EReal) =
    shapeCast S1x128 (V (Proc.devRef .tc main_arg9) : S128.Idx → EReal) Facts₀.shapeCasts_S128_S1x128 := by
  after_results; rfl

theorem v79_at (j : Fin 128) :
    (StableHlo.after (hostOps5 (F := Ideal)) V (Proc.devRef .tc main_v79) : S1x128.Idx → EReal) (ix2 0 j) =
      (V (Proc.devRef .tc main_arg9) : S128.Idx → EReal) (ix1 j) := by
  rw [v79_term]
  exact shapeCast_a_1a_apply (a := 128) _ _ 0 j

theorem v80_term : (StableHlo.after (hostOps5 (F := Ideal)) V (Proc.devRef .tc main_v80) : S1x128.Idx → EReal) =
    shapeCast S1x128 (V (Proc.devRef .tc main_arg11) : S128.Idx → EReal) Facts₀.shapeCasts_S128_S1x128 := by
  after_results; rfl

theorem v80_at (j : Fin 128) :
    (StableHlo.after (hostOps5 (F := Ideal)) V (Proc.devRef .tc main_v80) : S1x128.Idx → EReal) (ix2 0 j) =
      (V (Proc.devRef .tc main_arg11) : S128.Idx → EReal) (ix1 j) := by
  rw [v80_term]
  exact shapeCast_a_1a_apply (a := 128) _ _ 0 j

theorem v81_term : (StableHlo.after (hostOps5 (F := Ideal)) V (Proc.devRef .tc main_v81) : S1x128.Idx → EReal) =
    shapeCast S1x128 (V (Proc.devRef .tc main_arg13) : S128.Idx → EReal) Facts₀.shapeCasts_S128_S1x128 := by
  after_results; rfl

theorem v81_at (j : Fin 128) :
    (StableHlo.after (hostOps5 (F := Ideal)) V (Proc.devRef .tc main_v81) : S1x128.Idx → EReal) (ix2 0 j) =
      (V (Proc.devRef .tc main_arg13) : S128.Idx → EReal) (ix1 j) := by
  rw [v81_term]
  exact shapeCast_a_1a_apply (a := 128) _ _ 0 j

theorem v82_term : (StableHlo.after (hostOps5 (F := Ideal)) V (Proc.devRef .tc main_v82) : S1x128.Idx → EReal) =
    shapeCast S1x128 (V (Proc.devRef .tc main_arg15) : S128.Idx → EReal) Facts₀.shapeCasts_S128_S1x128 := by
  after_results; rfl

theorem v82_at (j : Fin 128) :
    (StableHlo.after (hostOps5 (F := Ideal)) V (Proc.devRef .tc main_v82) : S1x128.Idx → EReal) (ix2 0 j) =
      (V (Proc.devRef .tc main_arg15) : S128.Idx → EReal) (ix1 j) := by
  rw [v82_term]
  exact shapeCast_a_1a_apply (a := 128) _ _ 0 j

theorem v83_term : (StableHlo.after (hostOps5 (F := Ideal)) V (Proc.devRef .tc main_v83) : S1x512.Idx → EReal) =
    shapeCast S1x512 (V (Proc.devRef .tc main_arg17) : S512.Idx → EReal) Facts₀.shapeCasts_S512_S1x512 := by
  after_results; rfl

theorem v83_at (j : Fin 512) :
    (StableHlo.after (hostOps5 (F := Ideal)) V (Proc.devRef .tc main_v83) : S1x512.Idx → EReal) (ix2 0 j) =
      (V (Proc.devRef .tc main_arg17) : S512.Idx → EReal) (ix1 j) := by
  rw [v83_term]
  exact shapeCast_a_1a_apply (a := 512) _ _ 0 j

theorem v84_term : (StableHlo.after (hostOps5 (F := Ideal)) V (Proc.devRef .tc main_v84) : S1x256.Idx → EReal) =
    shapeCast S1x256 (V (Proc.devRef .tc main_arg19) : S256.Idx → EReal) Facts₀.shapeCasts_S256_S1x256 := by
  after_results; rfl

theorem v84_at (j : Fin 256) :
    (StableHlo.after (hostOps5 (F := Ideal)) V (Proc.devRef .tc main_v84) : S1x256.Idx → EReal) (ix2 0 j) =
      (V (Proc.devRef .tc main_arg19) : S256.Idx → EReal) (ix1 j) := by
  rw [v84_term]
  exact shapeCast_a_1a_apply (a := 256) _ _ 0 j

theorem v85_term : (StableHlo.after (hostOps5 (F := Ideal)) V (Proc.devRef .tc main_v85) : S1x128.Idx → EReal) =
    shapeCast S1x128 (V (Proc.devRef .tc main_arg21) : S128.Idx → EReal) Facts₀.shapeCasts_S128_S1x128 := by
  after_results; rfl

theorem v85_at (j : Fin 128) :
    (StableHlo.after (hostOps5 (F := Ideal)) V (Proc.devRef .tc main_v85) : S1x128.Idx → EReal) (ix2 0 j) =
      (V (Proc.devRef .tc main_arg21) : S128.Idx → EReal) (ix1 j) := by
  rw [v85_term]
  exact shapeCast_a_1a_apply (a := 128) _ _ 0 j

end Contents

variable (m : (ℓ : Loc nD τ sig) → Buf (Elt Ideal) ℓ) (ρ : Dev nD → PrngReg) (c : Dev nD)

theorem v76_apply (i : Fin 1024) (s : Fin 2) (j : Fin 128) :
    (W11 m ρ c (Proc.devRef .tc main_v76) : S1024x2x128.Idx → EReal) (ix3 i s j) =
      (W10 m ρ c (Proc.devRef .tc main_v75_0) : S2048x128.Idx → EReal) (ix2 ⟨2 * i.val + s.val, by omega⟩ j) :=
  v76_at (W10 m ρ c) i s j

theorem v77_apply (i : Fin 1024) (s : Fin 2) (j : Fin 128) :
    (W11 m ρ c (Proc.devRef .tc main_v77) : S1024x2x128.Idx → EReal) (ix3 i s j) =
      (W10 m ρ c (Proc.devRef .tc main_v75_1) : S2048x128.Idx → EReal) (ix2 ⟨2 * i.val + s.val, by omega⟩ j) :=
  v77_at (W10 m ρ c) i s j

theorem v78_apply (i : Fin 1024) (s : Fin 2) (j : Fin 128) :
    (W11 m ρ c (Proc.devRef .tc main_v78) : S1024x2x128.Idx → EReal) (ix3 i s j) =
      (W10 m ρ c (Proc.devRef .tc main_v75_2) : S2048x128.Idx → EReal) (ix2 ⟨2 * i.val + s.val, by omega⟩ j) :=
  v78_at (W10 m ρ c) i s j

theorem v79_apply (j : Fin 128) :
    (W11 m ρ c (Proc.devRef .tc main_v79) : S1x128.Idx → EReal) (ix2 0 j) =
      (W10 m ρ c (Proc.devRef .tc main_arg9) : S128.Idx → EReal) (ix1 j) :=
  v79_at (W10 m ρ c) j

theorem v80_apply (j : Fin 128) :
    (W11 m ρ c (Proc.devRef .tc main_v80) : S1x128.Idx → EReal) (ix2 0 j) =
      (W10 m ρ c (Proc.devRef .tc main_arg11) : S128.Idx → EReal) (ix1 j) :=
  v80_at (W10 m ρ c) j

theorem v81_apply (j : Fin 128) :
    (W11 m ρ c (Proc.devRef .tc main_v81) : S1x128.Idx → EReal) (ix2 0 j) =
      (W10 m ρ c (Proc.devRef .tc main_arg13) : S128.Idx → EReal) (ix1 j) :=
  v81_at (W10 m ρ c) j

theorem v82_apply (j : Fin 128) :
    (W11 m ρ c (Proc.devRef .tc main_v82) : S1x128.Idx → EReal) (ix2 0 j) =
      (W10 m ρ c (Proc.devRef .tc main_arg15) : S128.Idx → EReal) (ix1 j) :=
  v82_at (W10 m ρ c) j

theorem v83_apply (j : Fin 512) :
    (W11 m ρ c (Proc.devRef .tc main_v83) : S1x512.Idx → EReal) (ix2 0 j) =
      (W10 m ρ c (Proc.devRef .tc main_arg17) : S512.Idx → EReal) (ix1 j) :=
  v83_at (W10 m ρ c) j

theorem v84_apply (j : Fin 256) :
    (W11 m ρ c (Proc.devRef .tc main_v84) : S1x256.Idx → EReal) (ix2 0 j) =
      (W10 m ρ c (Proc.devRef .tc main_arg19) : S256.Idx → EReal) (ix1 j) :=
  v84_at (W10 m ρ c) j

theorem v85_apply (j : Fin 128) :
    (W11 m ρ c (Proc.devRef .tc main_v85) : S1x128.Idx → EReal) (ix2 0 j) =
      (W10 m ρ c (Proc.devRef .tc main_arg21) : S128.Idx → EReal) (ix1 j) :=
  v85_at (W10 m ρ c) j

end Cert.KernelIdeal.Host5
-- ==== Proof.R5Out.lean ====
import proofs.«410031_j84061099917532_3_alg».proof.Proof.Gen.KernelIdeal.Frame
import proofs.«410031_j84061099917532_3_alg».proof.Proof.R1Tile
import Idealize.ShloMosaic.Lib.Pipeline.Value
import Idealize.ShloMosaic.Lib.ValueIdx

noncomputable section

open Idealize.ShloMosaic Idealize.ShloMosaic.TcCoe Idealize.SL.Sem
open TreeNN ValueIdx

namespace Cert.KernelIdeal.Region5

open Cert.KernelIdeal Cert.KernelIdeal.Gen

theorem blockIdx0 : ∀ t : Fin cfg5.N, win5_0.index t (0 : Fin 2) = 0 + t.val ∧ win5_0.index t (1 : Fin 2) = 0 :=
  (by decide +kernel : ∀ t : Fin grid5.N, _)
theorem blockIdx1 : ∀ t : Fin cfg5.N, win5_1.index t (0 : Fin 2) = 0 + t.val ∧ win5_1.index t (1 : Fin 2) = 0 :=
  (by decide +kernel : ∀ t : Fin grid5.N, _)
theorem blockIdx2 : ∀ t : Fin cfg5.N, win5_2.index t (0 : Fin 2) = 0 + t.val ∧ win5_2.index t (1 : Fin 2) = 0 :=
  (by decide +kernel : ∀ t : Fin grid5.N, _)
theorem blockIdx3 : ∀ t : Fin cfg5.N, win5_3.index t (0 : Fin 2) = 0 + t.val ∧ win5_3.index t (1 : Fin 2) = 0 :=
  (by decide +kernel : ∀ t : Fin grid5.N, _)
theorem blockIdx4 : ∀ t : Fin cfg5.N, win5_4.index t (0 : Fin 2) = 0 + t.val ∧ win5_4.index t (1 : Fin 2) = 0 :=
  (by decide +kernel : ∀ t : Fin grid5.N, _)
theorem blockIdx5 : ∀ t : Fin cfg5.N, win5_5.index t (0 : Fin 2) = 0 + t.val ∧ win5_5.index t (1 : Fin 2) = 0 :=
  (by decide +kernel : ∀ t : Fin grid5.N, _)
theorem blockIdx6 : ∀ t : Fin cfg5.N, win5_6.index t (0 : Fin 2) = 0 + t.val ∧ win5_6.index t (1 : Fin 2) = 0 :=
  (by decide +kernel : ∀ t : Fin grid5.N, _)
theorem blockIdx7 : ∀ t : Fin cfg5.N, win5_7.index t (0 : Fin 2) = 0 + t.val ∧ win5_7.index t (1 : Fin 2) = 0 :=
  (by decide +kernel : ∀ t : Fin grid5.N, _)
theorem blockIdx8 : ∀ t : Fin cfg5.N, win5_8.index t (0 : Fin 3) = t.val ∧ win5_8.index t (1 : Fin 3) = 0 ∧ win5_8.index t (2 : Fin 3) = 0 :=
  (by decide +kernel : ∀ t : Fin grid5.N, _)
theorem blockIdx9 : ∀ t : Fin cfg5.N, win5_9.index t (0 : Fin 3) = t.val ∧ win5_9.index t (1 : Fin 3) = 0 ∧ win5_9.index t (2 : Fin 3) = 0 :=
  (by decide +kernel : ∀ t : Fin grid5.N, _)
theorem blockIdx10 : ∀ t : Fin cfg5.N, win5_10.index t (0 : Fin 3) = t.val ∧ win5_10.index t (1 : Fin 3) = 0 ∧ win5_10.index t (2 : Fin 3) = 0 :=
  (by decide +kernel : ∀ t : Fin grid5.N, _)
theorem blockIdx11 : ∀ t : Fin cfg5.N, win5_11.index t (0 : Fin 2) = 0 ∧ win5_11.index t (1 : Fin 2) = 0 :=
  (by decide +kernel : ∀ t : Fin grid5.N, _)
theorem blockIdx12 : ∀ t : Fin cfg5.N, win5_12.index t (0 : Fin 2) = 0 ∧ win5_12.index t (1 : Fin 2) = 0 :=
  (by decide +kernel : ∀ t : Fin grid5.N, _)
theorem blockIdx13 : ∀ t : Fin cfg5.N, win5_13.index t (0 : Fin 2) = 0 ∧ win5_13.index t (1 : Fin 2) = 0 :=
  (by decide +kernel : ∀ t : Fin grid5.N, _)
theorem blockIdx14 : ∀ t : Fin cfg5.N, win5_14.index t (0 : Fin 2) = 0 ∧ win5_14.index t (1 : Fin 2) = 0 :=
  (by decide +kernel : ∀ t : Fin grid5.N, _)
theorem blockIdx15 : ∀ t : Fin cfg5.N, win5_15.index t (0 : Fin 2) = 0 ∧ win5_15.index t (1 : Fin 2) = 0 :=
  (by decide +kernel : ∀ t : Fin grid5.N, _)
theorem blockIdx16 : ∀ t : Fin cfg5.N, win5_16.index t (0 : Fin 2) = 0 ∧ win5_16.index t (1 : Fin 2) = 0 :=
  (by decide +kernel : ∀ t : Fin grid5.N, _)
theorem blockIdx17 : ∀ t : Fin cfg5.N, win5_17.index t (0 : Fin 2) = 0 ∧ win5_17.index t (1 : Fin 2) = 0 :=
  (by decide +kernel : ∀ t : Fin grid5.N, _)
theorem blockIdx18 : ∀ t : Fin cfg5.N, win5_18.index t (0 : Fin 2) = 0 ∧ win5_18.index t (1 : Fin 2) = 0 :=
  (by decide +kernel : ∀ t : Fin grid5.N, _)
theorem blockIdx19 : ∀ t : Fin cfg5.N, win5_19.index t (0 : Fin 2) = 0 ∧ win5_19.index t (1 : Fin 2) = 0 :=
  (by decide +kernel : ∀ t : Fin grid5.N, _)
theorem blockIdx20 : ∀ t : Fin cfg5.N, win5_20.index t (0 : Fin 2) = 0 ∧ win5_20.index t (1 : Fin 2) = 0 :=
  (by decide +kernel : ∀ t : Fin grid5.N, _)
theorem blockIdx21 : ∀ t : Fin cfg5.N, win5_21.index t (0 : Fin 2) = 0 ∧ win5_21.index t (1 : Fin 2) = 0 :=
  (by decide +kernel : ∀ t : Fin grid5.N, _)
theorem blockIdx22 : ∀ t : Fin cfg5.N, win5_22.index t (0 : Fin 2) = 0 ∧ win5_22.index t (1 : Fin 2) = 0 :=
  (by decide +kernel : ∀ t : Fin grid5.N, _)
theorem blockIdx23 : ∀ t : Fin cfg5.N, win5_23.index t (0 : Fin 2) = 0 ∧ win5_23.index t (1 : Fin 2) = 0 :=
  (by decide +kernel : ∀ t : Fin grid5.N, _)
theorem blockIdx24 : ∀ t : Fin cfg5.N, win5_24.index t (0 : Fin 2) = 0 ∧ win5_24.index t (1 : Fin 2) = 0 :=
  (by decide +kernel : ∀ t : Fin grid5.N, _)
theorem blockIdx25 : ∀ t : Fin cfg5.N, win5_25.index t (0 : Fin 2) = t.val ∧ win5_25.index t (1 : Fin 2) = 0 :=
  (by decide +kernel : ∀ t : Fin grid5.N, _)
theorem blockIdx26 : ∀ t : Fin cfg5.N, win5_26.index t (0 : Fin 2) = t.val ∧ win5_26.index t (1 : Fin 2) = 0 :=
  (by decide +kernel : ∀ t : Fin grid5.N, _)
theorem blockIdx27 : ∀ t : Fin cfg5.N, win5_27.index t (0 : Fin 2) = t.val ∧ win5_27.index t (1 : Fin 2) = 0 :=
  (by decide +kernel : ∀ t : Fin grid5.N, _)

theorem block0_apply (A : S64512x32.Idx → EReal) (t : Fin cfg5.N) (r : Fin 1024) (q : Fin 32) (k : Fin 64512)
    (hk : k.val = 1024 * (0 + t.val) + r.val) :
    ((cfg5.win 0).blk t).view.read (Elt Ideal) A (ix2 r q) = A (ix2 k q) := by
  rw [View.read_apply]
  show A _ = A _
  congr 1
  funext a
  apply Fin.ext
  match a with
  | ⟨0, _⟩ => show win5_0.index t (0 : Fin 2) * 1024 + 1 * r.val = k.val; rw [(blockIdx0 t).1, hk]; omega
  | ⟨1, _⟩ => show win5_0.index t (1 : Fin 2) * 32 + 1 * q.val = q.val; rw [(blockIdx0 t).2]; omega

theorem block1_apply (A : S64512x32.Idx → EReal) (t : Fin cfg5.N) (r : Fin 1024) (q : Fin 32) (k : Fin 64512)
    (hk : k.val = 1024 * (0 + t.val) + r.val) :
    ((cfg5.win 1).blk t).view.read (Elt Ideal) A (ix2 r q) = A (ix2 k q) := by
  rw [View.read_apply]
  show A _ = A _
  congr 1
  funext a
  apply Fin.ext
  match a with
  | ⟨0, _⟩ => show win5_1.index t (0 : Fin 2) * 1024 + 1 * r.val = k.val; rw [(blockIdx1 t).1, hk]; omega
  | ⟨1, _⟩ => show win5_1.index t (1 : Fin 2) * 32 + 1 * q.val = q.val; rw [(blockIdx1 t).2]; omega

theorem block2_apply (A : S64512x1000.Idx → EReal) (t : Fin cfg5.N) (r : Fin 1024) (q : Fin 1000) (k : Fin 64512)
    (hk : k.val = 1024 * (0 + t.val) + r.val) :
    ((cfg5.win 2).blk t).view.read (Elt Ideal) A (ix2 r q) = A (ix2 k q) := by
  rw [View.read_apply]
  show A _ = A _
  congr 1
  funext a
  apply Fin.ext
  match a with
  | ⟨0, _⟩ => show win5_2.index t (0 : Fin 2) * 1024 + 1 * r.val = k.val; rw [(blockIdx2 t).1, hk]; omega
  | ⟨1, _⟩ => show win5_2.index t (1 : Fin 2) * 1000 + 1 * q.val = q.val; rw [(blockIdx2 t).2]; omega

theorem block3_apply (A : S64512x256.Idx → EReal) (t : Fin cfg5.N) (r : Fin 1024) (q : Fin 256) (k : Fin 64512)
    (hk : k.val = 1024 * (0 + t.val) + r.val) :
    ((cfg5.win 3).blk t).view.read (Elt Ideal) A (ix2 r q) = A (ix2 k q) := by
  rw [View.read_apply]
  show A _ = A _
  congr 1
  funext a
  apply Fin.ext
  match a with
  | ⟨0, _⟩ => show win5_3.index t (0 : Fin 2) * 1024 + 1 * r.val = k.val; rw [(blockIdx3 t).1, hk]; omega
  | ⟨1, _⟩ => show win5_3.index t (1 : Fin 2) * 256 + 1 * q.val = q.val; rw [(blockIdx3 t).2]; omega

theorem block4_apply (A : S64512x256.Idx → EReal) (t : Fin cfg5.N) (r : Fin 1024) (q : Fin 256) (k : Fin 64512)
    (hk : k.val = 1024 * (0 + t.val) + r.val) :
    ((cfg5.win 4).blk t).view.read (Elt Ideal) A (ix2 r q) = A (ix2 k q) := by
  rw [View.read_apply]
  show A _ = A _
  congr 1
  funext a
  apply Fin.ext
  match a with
  | ⟨0, _⟩ => show win5_4.index t (0 : Fin 2) * 1024 + 1 * r.val = k.val; rw [(blockIdx4 t).1, hk]; omega
  | ⟨1, _⟩ => show win5_4.index t (1 : Fin 2) * 256 + 1 * q.val = q.val; rw [(blockIdx4 t).2]; omega

theorem block5_apply (A : S64512x1.Idx → EReal) (t : Fin cfg5.N) (r : Fin 1024) (q : Fin 1) (k : Fin 64512)
    (hk : k.val = 1024 * (0 + t.val) + r.val) :
    ((cfg5.win 5).blk t).view.read (Elt Ideal) A (ix2 r q) = A (ix2 k q) := by
  rw [View.read_apply]
  show A _ = A _
  congr 1
  funext a
  apply Fin.ext
  match a with
  | ⟨0, _⟩ => show win5_5.index t (0 : Fin 2) * 1024 + 1 * r.val = k.val; rw [(blockIdx5 t).1, hk]; omega
  | ⟨1, _⟩ => show win5_5.index t (1 : Fin 2) * 1 + 1 * q.val = q.val; rw [(blockIdx5 t).2]; omega

theorem block6_apply (A : S64512x1.Idx → EReal) (t : Fin cfg5.N) (r : Fin 1024) (q : Fin 1) (k : Fin 64512)
    (hk : k.val = 1024 * (0 + t.val) + r.val) :
    ((cfg5.win 6).blk t).view.read (Elt Ideal) A (ix2 r q) = A (ix2 k q) := by
  rw [View.read_apply]
  show A _ = A _
  congr 1
  funext a
  apply Fin.ext
  match a with
  | ⟨0, _⟩ => show win5_6.index t (0 : Fin 2) * 1024 + 1 * r.val = k.val; rw [(blockIdx6 t).1, hk]; omega
  | ⟨1, _⟩ => show win5_6.index t (1 : Fin 2) * 1 + 1 * q.val = q.val; rw [(blockIdx6 t).2]; omega

theorem block7_apply (A : S64512x1.Idx → EReal) (t : Fin cfg5.N) (r : Fin 1024) (q : Fin 1) (k : Fin 64512)
    (hk : k.val = 1024 * (0 + t.val) + r.val) :
    ((cfg5.win 7).blk t).view.read (Elt Ideal) A (ix2 r q) = A (ix2 k q) := by
  rw [View.read_apply]
  show A _ = A _
  congr 1
  funext a
  apply Fin.ext
  match a with
  | ⟨0, _⟩ => show win5_7.index t (0 : Fin 2) * 1024 + 1 * r.val = k.val; rw [(blockIdx7 t).1, hk]; omega
  | ⟨1, _⟩ => show win5_7.index t (1 : Fin 2) * 1 + 1 * q.val = q.val; rw [(blockIdx7 t).2]; omega

theorem block8_apply (A : S1024x2x128.Idx → EReal) (t : Fin cfg5.N) (r : Fin 1024) (s : Fin 2) (q : Fin 128) (i : Fin 1024)
    (hi : i.val = 1024 * t.val + r.val) :
    ((cfg5.win 8).blk t).view.read (Elt Ideal) A (ix3 r s q) = A (ix3 i s q) := by
  rw [View.read_apply]
  show A _ = A _
  congr 1
  funext a
  apply Fin.ext
  match a with
  | ⟨0, _⟩ => show win5_8.index t (0 : Fin 3) * 1024 + 1 * r.val = i.val; rw [(blockIdx8 t).1, hi]; omega
  | ⟨1, _⟩ => show win5_8.index t (1 : Fin 3) * 2 + 1 * s.val = s.val; rw [(blockIdx8 t).2.1]; omega
  | ⟨2, _⟩ => show win5_8.index t (2 : Fin 3) * 128 + 1 * q.val = q.val; rw [(blockIdx8 t).2.2]; omega

theorem block9_apply (A : S1024x2x128.Idx → EReal) (t : Fin cfg5.N) (r : Fin 1024) (s : Fin 2) (q : Fin 128) (i : Fin 1024)
    (hi : i.val = 1024 * t.val + r.val) :
    ((cfg5.win 9).blk t).view.read (Elt Ideal) A (ix3 r s q) = A (ix3 i s q) := by
  rw [View.read_apply]
  show A _ = A _
  congr 1
  funext a
  apply Fin.ext
  match a with
  | ⟨0, _⟩ => show win5_9.index t (0 : Fin 3) * 1024 + 1 * r.val = i.val; rw [(blockIdx9 t).1, hi]; omega
  | ⟨1, _⟩ => show win5_9.index t (1 : Fin 3) * 2 + 1 * s.val = s.val; rw [(blockIdx9 t).2.1]; omega
  | ⟨2, _⟩ => show win5_9.index t (2 : Fin 3) * 128 + 1 * q.val = q.val; rw [(blockIdx9 t).2.2]; omega

theorem block10_apply (A : S1024x2x128.Idx → EReal) (t : Fin cfg5.N) (r : Fin 1024) (s : Fin 2) (q : Fin 128) (i : Fin 1024)
    (hi : i.val = 1024 * t.val + r.val) :
    ((cfg5.win 10).blk t).view.read (Elt Ideal) A (ix3 r s q) = A (ix3 i s q) := by
  rw [View.read_apply]
  show A _ = A _
  congr 1
  funext a
  apply Fin.ext
  match a with
  | ⟨0, _⟩ => show win5_10.index t (0 : Fin 3) * 1024 + 1 * r.val = i.val; rw [(blockIdx10 t).1, hi]; omega
  | ⟨1, _⟩ => show win5_10.index t (1 : Fin 3) * 2 + 1 * s.val = s.val; rw [(blockIdx10 t).2.1]; omega
  | ⟨2, _⟩ => show win5_10.index t (2 : Fin 3) * 128 + 1 * q.val = q.val; rw [(blockIdx10 t).2.2]; omega

theorem block11_eq (A : S32x128.Idx → EReal) (t : Fin cfg5.N) :
    (((cfg5.win 11).blk t).view.read (Elt Ideal) A : S32x128.Idx → EReal) = A := by
  funext x
  rw [View.read_apply]
  show A _ = A _
  congr 1
  funext a
  apply Fin.ext
  match a with
  | ⟨0, _⟩ => show win5_11.index t (0 : Fin 2) * 32 + 1 * (x 0).val = (x 0).val; rw [(blockIdx11 t).1]; omega
  | ⟨1, _⟩ => show win5_11.index t (1 : Fin 2) * 128 + 1 * (x 1).val = (x 1).val; rw [(blockIdx11 t).2]; omega

theorem block12_eq (A : S1x128.Idx → EReal) (t : Fin cfg5.N) :
    (((cfg5.win 12).blk t).view.read (Elt Ideal) A : S1x128.Idx → EReal) = A := by
  funext x
  rw [View.read_apply]
  show A _ = A _
  congr 1
  funext a
  apply Fin.ext
  match a with
  | ⟨0, _⟩ => show win5_12.index t (0 : Fin 2) * 1 + 1 * (x 0).val = (x 0).val; rw [(blockIdx12 t).1]; omega
  | ⟨1, _⟩ => show win5_12.index t (1 : Fin 2) * 128 + 1 * (x 1).val = (x 1).val; rw [(blockIdx12 t).2]; omega

theorem block13_eq (A : S32x128.Idx → EReal) (t : Fin cfg5.N) :
    (((cfg5.win 13).blk t).view.read (Elt Ideal) A : S32x128.Idx → EReal) = A := by
  funext x
  rw [View.read_apply]
  show A _ = A _
  congr 1
  funext a
  apply Fin.ext
  match a with
  | ⟨0, _⟩ => show win5_13.index t (0 : Fin 2) * 32 + 1 * (x 0).val = (x 0).val; rw [(blockIdx13 t).1]; omega
  | ⟨1, _⟩ => show win5_13.index t (1 : Fin 2) * 128 + 1 * (x 1).val = (x 1).val; rw [(blockIdx13 t).2]; omega

theorem block14_eq (A : S1x128.Idx → EReal) (t : Fin cfg5.N) :
    (((cfg5.win 14).blk t).view.read (Elt Ideal) A : S1x128.Idx → EReal) = A := by
  funext x
  rw [View.read_apply]
  show A _ = A _
  congr 1
  funext a
  apply Fin.ext
  match a with
  | ⟨0, _⟩ => show win5_14.index t (0 : Fin 2) * 1 + 1 * (x 0).val = (x 0).val; rw [(blockIdx14 t).1]; omega
  | ⟨1, _⟩ => show win5_14.index t (1 : Fin 2) * 128 + 1 * (x 1).val = (x 1).val; rw [(blockIdx14 t).2]; omega

theorem block15_eq (A : S1000x128.Idx → EReal) (t : Fin cfg5.N) :
    (((cfg5.win 15).blk t).view.read (Elt Ideal) A : S1000x128.Idx → EReal) = A := by
  funext x
  rw [View.read_apply]
  show A _ = A _
  congr 1
  funext a
  apply Fin.ext
  match a with
  | ⟨0, _⟩ => show win5_15.index t (0 : Fin 2) * 1000 + 1 * (x 0).val = (x 0).val; rw [(blockIdx15 t).1]; omega
  | ⟨1, _⟩ => show win5_15.index t (1 : Fin 2) * 128 + 1 * (x 1).val = (x 1).val; rw [(blockIdx15 t).2]; omega

theorem block16_eq (A : S1x128.Idx → EReal) (t : Fin cfg5.N) :
    (((cfg5.win 16).blk t).view.read (Elt Ideal) A : S1x128.Idx → EReal) = A := by
  funext x
  rw [View.read_apply]
  show A _ = A _
  congr 1
  funext a
  apply Fin.ext
  match a with
  | ⟨0, _⟩ => show win5_16.index t (0 : Fin 2) * 1 + 1 * (x 0).val = (x 0).val; rw [(blockIdx16 t).1]; omega
  | ⟨1, _⟩ => show win5_16.index t (1 : Fin 2) * 128 + 1 * (x 1).val = (x 1).val; rw [(blockIdx16 t).2]; omega

theorem block17_eq (A : S256x512.Idx → EReal) (t : Fin cfg5.N) :
    (((cfg5.win 17).blk t).view.read (Elt Ideal) A : S256x512.Idx → EReal) = A := by
  funext x
  rw [View.read_apply]
  show A _ = A _
  congr 1
  funext a
  apply Fin.ext
  match a with
  | ⟨0, _⟩ => show win5_17.index t (0 : Fin 2) * 256 + 1 * (x 0).val = (x 0).val; rw [(blockIdx17 t).1]; omega
  | ⟨1, _⟩ => show win5_17.index t (1 : Fin 2) * 512 + 1 * (x 1).val = (x 1).val; rw [(blockIdx17 t).2]; omega

theorem block18_eq (A : S1x128.Idx → EReal) (t : Fin cfg5.N) :
    (((cfg5.win 18).blk t).view.read (Elt Ideal) A : S1x128.Idx → EReal) = A := by
  funext x
  rw [View.read_apply]
  show A _ = A _
  congr 1
  funext a
  apply Fin.ext
  match a with
  | ⟨0, _⟩ => show win5_18.index t (0 : Fin 2) * 1 + 1 * (x 0).val = (x 0).val; rw [(blockIdx18 t).1]; omega
  | ⟨1, _⟩ => show win5_18.index t (1 : Fin 2) * 128 + 1 * (x 1).val = (x 1).val; rw [(blockIdx18 t).2]; omega

theorem block19_eq (A : S1408x512.Idx → EReal) (t : Fin cfg5.N) :
    (((cfg5.win 19).blk t).view.read (Elt Ideal) A : S1408x512.Idx → EReal) = A := by
  funext x
  rw [View.read_apply]
  show A _ = A _
  congr 1
  funext a
  apply Fin.ext
  match a with
  | ⟨0, _⟩ => show win5_19.index t (0 : Fin 2) * 1408 + 1 * (x 0).val = (x 0).val; rw [(blockIdx19 t).1]; omega
  | ⟨1, _⟩ => show win5_19.index t (1 : Fin 2) * 512 + 1 * (x 1).val = (x 1).val; rw [(blockIdx19 t).2]; omega

theorem block20_eq (A : S1x512.Idx → EReal) (t : Fin cfg5.N) :
    (((cfg5.win 20).blk t).view.read (Elt Ideal) A : S1x512.Idx → EReal) = A := by
  funext x
  rw [View.read_apply]
  show A _ = A _
  congr 1
  funext a
  apply Fin.ext
  match a with
  | ⟨0, _⟩ => show win5_20.index t (0 : Fin 2) * 1 + 1 * (x 0).val = (x 0).val; rw [(blockIdx20 t).1]; omega
  | ⟨1, _⟩ => show win5_20.index t (1 : Fin 2) * 512 + 1 * (x 1).val = (x 1).val; rw [(blockIdx20 t).2]; omega

theorem block21_eq (A : S512x256.Idx → EReal) (t : Fin cfg5.N) :
    (((cfg5.win 21).blk t).view.read (Elt Ideal) A : S512x256.Idx → EReal) = A := by
  funext x
  rw [View.read_apply]
  show A _ = A _
  congr 1
  funext a
  apply Fin.ext
  match a with
  | ⟨0, _⟩ => show win5_21.index t (0 : Fin 2) * 512 + 1 * (x 0).val = (x 0).val; rw [(blockIdx21 t).1]; omega
  | ⟨1, _⟩ => show win5_21.index t (1 : Fin 2) * 256 + 1 * (x 1).val = (x 1).val; rw [(blockIdx21 t).2]; omega

theorem block22_eq (A : S1x256.Idx → EReal) (t : Fin cfg5.N) :
    (((cfg5.win 22).blk t).view.read (Elt Ideal) A : S1x256.Idx → EReal) = A := by
  funext x
  rw [View.read_apply]
  show A _ = A _
  congr 1
  funext a
  apply Fin.ext
  match a with
  | ⟨0, _⟩ => show win5_22.index t (0 : Fin 2) * 1 + 1 * (x 0).val = (x 0).val; rw [(blockIdx22 t).1]; omega
  | ⟨1, _⟩ => show win5_22.index t (1 : Fin 2) * 256 + 1 * (x 1).val = (x 1).val; rw [(blockIdx22 t).2]; omega

theorem block23_eq (A : S256x128.Idx → EReal) (t : Fin cfg5.N) :
    (((cfg5.win 23).blk t).view.read (Elt Ideal) A : S256x128.Idx → EReal) = A := by
  funext x
  rw [View.read_apply]
  show A _ = A _
  congr 1
  funext a
  apply Fin.ext
  match a with
  | ⟨0, _⟩ => show win5_23.index t (0 : Fin 2) * 256 + 1 * (x 0).val = (x 0).val; rw [(blockIdx23 t).1]; omega
  | ⟨1, _⟩ => show win5_23.index t (1 : Fin 2) * 128 + 1 * (x 1).val = (x 1).val; rw [(blockIdx23 t).2]; omega

theorem block24_eq (A : S1x128.Idx → EReal) (t : Fin cfg5.N) :
    (((cfg5.win 24).blk t).view.read (Elt Ideal) A : S1x128.Idx → EReal) = A := by
  funext x
  rw [View.read_apply]
  show A _ = A _
  congr 1
  funext a
  apply Fin.ext
  match a with
  | ⟨0, _⟩ => show win5_24.index t (0 : Fin 2) * 1 + 1 * (x 0).val = (x 0).val; rw [(blockIdx24 t).1]; omega
  | ⟨1, _⟩ => show win5_24.index t (1 : Fin 2) * 128 + 1 * (x 1).val = (x 1).val; rw [(blockIdx24 t).2]; omega

theorem writeBack25_eq (X : S1024x128.Idx → EReal) (G : S1024x128.Idx → EReal) (t : Fin cfg5.N)
    (h : ∀ (r : Fin 1024) (j : Fin 128) (i : Fin 1024), i.val = 1024 * t.val + r.val → X (ix2 r j) = G (ix2 i j)) :
    (cfg5.win 25).cut (grid5.coords t) X = ((cfg5.win 25).blk t).view.read (Elt Ideal) G := by
  funext y
  rw [View.read_apply]
  show X ((cfg5.win 25).xinj (grid5.coords t) y) = G (((cfg5.win 25).blk t).view.emb y)
  have hy : (cfg5.win 25).xinj (grid5.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 1 := by have h := t.isLt; have e : cfg5.N = 1 := N_5; omega
  have he : ((cfg5.win 25).blk t).view.emb y = ix2 (⟨1024 * t.val + (y 0).val, by omega⟩ : Fin 1024) (⟨(y 1).val, (y 1).isLt⟩ : Fin 128) := by
    funext a
    apply Fin.ext
    match a with
    | ⟨0, _⟩ => show win5_25.index t (0 : Fin 2) * 1024 + 1 * (y 0).val = 1024 * t.val + (y 0).val; rw [(blockIdx25 t).1]; omega
    | ⟨1, _⟩ => show win5_25.index t (1 : Fin 2) * 128 + 1 * (y 1).val = (y 1).val; rw [(blockIdx25 t).2]; omega
  rw [hy, he]
  exact h _ _ _ rfl

theorem rowCover25 (c : Dev nD) (i : ((cfg5.win 25).arr.view.loc (c.tc : Thread nD τ)).2.ty.Idx) :
    ∃ t : Fin cfg5.N, (cfg5.win 25).flush t = true ∧ i ∈ ((cfg5.win 25).blk t).view.set := by
  have h0 : (i 0).val < 1024 := (i 0).isLt
  have h1 : (i 1).val < 128 := (i 1).isLt
  have hlt : (i 0).val / 1024 < cfg5.N := by show _ < grid5.N; rw [N_5]; omega
  refine ⟨⟨(i 0).val / 1024, hlt⟩, flush5_25 _, ?_⟩
  show i ∈ ((View.whole main_v86_0).slice (win5_25.rect ⟨(i 0).val / 1024, hlt⟩)).set
  rw [View.set_slice_whole, Rect.mem_set_unit]
  intro a
  match a with
  | ⟨0, _⟩ =>
    show win5_25.index ⟨(i 0).val / 1024, hlt⟩ (0 : Fin 2) * 1024 ≤ (i 0).val ∧ (i 0).val < win5_25.index ⟨(i 0).val / 1024, hlt⟩ (0 : Fin 2) * 1024 + 1024
    rw [(blockIdx25 _).1]; show (i 0).val / 1024 * 1024 ≤ _ ∧ _ < (i 0).val / 1024 * 1024 + 1024; omega
  | ⟨1, _⟩ =>
    show win5_25.index ⟨(i 0).val / 1024, hlt⟩ (1 : Fin 2) * 128 ≤ (i 1).val ∧ (i 1).val < win5_25.index ⟨(i 0).val / 1024, hlt⟩ (1 : Fin 2) * 128 + 128
    rw [(blockIdx25 _).2]; omega

theorem writeBack26_eq (X : S1024x128.Idx → EReal) (G : S1024x128.Idx → EReal) (t : Fin cfg5.N)
    (h : ∀ (r : Fin 1024) (j : Fin 128) (i : Fin 1024), i.val = 1024 * t.val + r.val → X (ix2 r j) = G (ix2 i j)) :
    (cfg5.win 26).cut (grid5.coords t) X = ((cfg5.win 26).blk t).view.read (Elt Ideal) G := by
  funext y
  rw [View.read_apply]
  show X ((cfg5.win 26).xinj (grid5.coords t) y) = G (((cfg5.win 26).blk t).view.emb y)
  have hy : (cfg5.win 26).xinj (grid5.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 1 := by have h := t.isLt; have e : cfg5.N = 1 := N_5; omega
  have he : ((cfg5.win 26).blk t).view.emb y = ix2 (⟨1024 * t.val + (y 0).val, by omega⟩ : Fin 1024) (⟨(y 1).val, (y 1).isLt⟩ : Fin 128) := by
    funext a
    apply Fin.ext
    match a with
    | ⟨0, _⟩ => show win5_26.index t (0 : Fin 2) * 1024 + 1 * (y 0).val = 1024 * t.val + (y 0).val; rw [(blockIdx26 t).1]; omega
    | ⟨1, _⟩ => show win5_26.index t (1 : Fin 2) * 128 + 1 * (y 1).val = (y 1).val; rw [(blockIdx26 t).2]; omega
  rw [hy, he]
  exact h _ _ _ rfl

theorem rowCover26 (c : Dev nD) (i : ((cfg5.win 26).arr.view.loc (c.tc : Thread nD τ)).2.ty.Idx) :
    ∃ t : Fin cfg5.N, (cfg5.win 26).flush t = true ∧ i ∈ ((cfg5.win 26).blk t).view.set := by
  have h0 : (i 0).val < 1024 := (i 0).isLt
  have h1 : (i 1).val < 128 := (i 1).isLt
  have hlt : (i 0).val / 1024 < cfg5.N := by show _ < grid5.N; rw [N_5]; omega
  refine ⟨⟨(i 0).val / 1024, hlt⟩, flush5_26 _, ?_⟩
  show i ∈ ((View.whole main_v86_1).slice (win5_26.rect ⟨(i 0).val / 1024, hlt⟩)).set
  rw [View.set_slice_whole, Rect.mem_set_unit]
  intro a
  match a with
  | ⟨0, _⟩ =>
    show win5_26.index ⟨(i 0).val / 1024, hlt⟩ (0 : Fin 2) * 1024 ≤ (i 0).val ∧ (i 0).val < win5_26.index ⟨(i 0).val / 1024, hlt⟩ (0 : Fin 2) * 1024 + 1024
    rw [(blockIdx26 _).1]; show (i 0).val / 1024 * 1024 ≤ _ ∧ _ < (i 0).val / 1024 * 1024 + 1024; omega
  | ⟨1, _⟩ =>
    show win5_26.index ⟨(i 0).val / 1024, hlt⟩ (1 : Fin 2) * 128 ≤ (i 1).val ∧ (i 1).val < win5_26.index ⟨(i 0).val / 1024, hlt⟩ (1 : Fin 2) * 128 + 128
    rw [(blockIdx26 _).2]; omega

theorem writeBack27_eq (X : S1024x128.Idx → EReal) (G : S1024x128.Idx → EReal) (t : Fin cfg5.N)
    (h : ∀ (r : Fin 1024) (j : Fin 128) (i : Fin 1024), i.val = 1024 * t.val + r.val → X (ix2 r j) = G (ix2 i j)) :
    (cfg5.win 27).cut (grid5.coords t) X = ((cfg5.win 27).blk t).view.read (Elt Ideal) G := by
  funext y
  rw [View.read_apply]
  show X ((cfg5.win 27).xinj (grid5.coords t) y) = G (((cfg5.win 27).blk t).view.emb y)
  have hy : (cfg5.win 27).xinj (grid5.coords t) y = ix2 (⟨(y 0).val, (y 0).isLt⟩ : Fin 1024) (⟨(y 1).val, (y 1).isLt⟩ : Fin 128) := by
    funext a
    match a with
    | ⟨0, _⟩ => rfl
    | ⟨1, _⟩ => rfl
  have hy0 : (y 0).val < 1024 := (y 0).isLt
  have hN : t.val < 1 := by have h := t.isLt; have e : cfg5.N = 1 := N_5; omega
  have he : ((cfg5.win 27).blk t).view.emb y = ix2 (⟨1024 * t.val + (y 0).val, by omega⟩ : Fin 1024) (⟨(y 1).val, (y 1).isLt⟩ : Fin 128) := by
    funext a
    apply Fin.ext
    match a with
    | ⟨0, _⟩ => show win5_27.index t (0 : Fin 2) * 1024 + 1 * (y 0).val = 1024 * t.val + (y 0).val; rw [(blockIdx27 t).1]; omega
    | ⟨1, _⟩ => show win5_27.index t (1 : Fin 2) * 128 + 1 * (y 1).val = (y 1).val; rw [(blockIdx27 t).2]; omega
  rw [hy, he]
  exact h _ _ _ rfl

theorem rowCover27 (c : Dev nD) (i : ((cfg5.win 27).arr.view.loc (c.tc : Thread nD τ)).2.ty.Idx) :
    ∃ t : Fin cfg5.N, (cfg5.win 27).flush t = true ∧ i ∈ ((cfg5.win 27).blk t).view.set := by
  have h0 : (i 0).val < 1024 := (i 0).isLt
  have h1 : (i 1).val < 128 := (i 1).isLt
  have hlt : (i 0).val / 1024 < cfg5.N := by show _ < grid5.N; rw [N_5]; omega
  refine ⟨⟨(i 0).val / 1024, hlt⟩, flush5_27 _, ?_⟩
  show i ∈ ((View.whole main_v86_2).slice (win5_27.rect ⟨(i 0).val / 1024, hlt⟩)).set
  rw [View.set_slice_whole, Rect.mem_set_unit]
  intro a
  match a with
  | ⟨0, _⟩ =>
    show win5_27.index ⟨(i 0).val / 1024, hlt⟩ (0 : Fin 2) * 1024 ≤ (i 0).val ∧ (i 0).val < win5_27.index ⟨(i 0).val / 1024, hlt⟩ (0 : Fin 2) * 1024 + 1024
    rw [(blockIdx27 _).1]; show (i 0).val / 1024 * 1024 ≤ _ ∧ _ < (i 0).val / 1024 * 1024 + 1024; omega
  | ⟨1, _⟩ =>
    show win5_27.index ⟨(i 0).val / 1024, hlt⟩ (1 : Fin 2) * 128 ≤ (i 1).val ∧ (i 1).val < win5_27.index ⟨(i 0).val / 1024, hlt⟩ (1 : Fin 2) * 128 + 128
    rw [(blockIdx27 _).2]; omega

theorem rep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A0 : S64512x32.Idx → EReal) (A1 : S64512x32.Idx → EReal) (A2 : S64512x1000.Idx → EReal) (A3 : S64512x256.Idx → EReal) (A4 : S64512x256.Idx → EReal) (A5 : S64512x1.Idx → EReal) (A6 : S64512x1.Idx → EReal) (A7 : S64512x1.Idx → EReal) (A8 : S1024x2x128.Idx → EReal) (A9 : S1024x2x128.Idx → EReal) (A10 : S1024x2x128.Idx → EReal) (A11 : S32x128.Idx → EReal) (A12 : S1x128.Idx → EReal) (A13 : S32x128.Idx → EReal) (A14 : S1x128.Idx → EReal) (A15 : S1000x128.Idx → EReal) (A16 : S1x128.Idx → EReal) (A17 : S256x512.Idx → EReal) (A18 : S1x128.Idx → EReal) (A19 : S1408x512.Idx → EReal) (A20 : S1x512.Idx → EReal) (A21 : S512x256.Idx → EReal) (A22 : S1x256.Idx → EReal) (A23 : S256x128.Idx → EReal) (A24 : S1x128.Idx → EReal)
    (r : Fin 1024) (j : Fin 128) (k : Fin 64512) (i : Fin 1024)
    (h0 : mat x0 r = mat A0 k) (h1 : mat x1 r = mat A1 k) (h2 : mat x2 r = mat A2 k) (h3 : mat x3 r = mat A3 k) (h4 : mat x4 r = mat A4 k) (h5 : col x5 r = col A5 k) (h6 : col x6 r = col A6 k) (h7 : col x7 r = col A7 k) (h8 : ten3 x8 r = ten3 A8 i) (h9 : ten3 x9 r = ten3 A9 i) (h10 : ten3 x10 r = ten3 A10 i) (h11 : x11 = A11) (h12 : x12 = A12) (h13 : x13 = A13) (h14 : x14 = A14) (h15 : x15 = A15) (h16 : x16 = A16) (h17 : x17 = A17) (h18 : x18 = A18) (h19 : x19 = A19) (h20 : x20 = A20) (h21 : x21 = A21) (h22 : x22 = A22) (h23 : x23 = A23) (h24 : x24 = A24) :
    out5_25 (F := Ideal) x0 x1 x2 x3 x4 x5 x6 x7 x8 x9 x10 x11 x12 x13 x14 x15 x16 x17 x18 x19 x20 x21 x22 x23 x24 (ix2 r j)
      = nodeRep (MLP3.ofTiles A19 A20 A21 A22 A23 A24)
          (embK (EmbW.ofTiles A11 A12 A13 A14 A15 A16 A18) (mat A17) (mat A0 k) (mat A1 k) (mat A2 k) (mat A3 k) (mat A4 k) (col A5 k))
          (col A6 k) (col A7 k) (ten3 A8 i) (ten3 A9 i) (ten3 A10 i) j := by
  subst h11 h12 h13 h14 h15 h16 h17 h18 h19 h20 h21 h22 h23 h24
  rw [show @out5_25 = @out1_25 from rfl, Region1.out25_apply, h0, h1, h2, h3, h4, h5, h6, h7, h8, h9, h10]

theorem lrep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A6 : S64512x1.Idx → EReal) (A8 : S1024x2x128.Idx → EReal)
    (r : Fin 1024) (j : Fin 128) (k : Fin 64512) (i : Fin 1024)
    (h6 : col x6 r = col A6 k) (h8 : ten3 x8 r = ten3 A8 i) :
    out5_26 (F := Ideal) x0 x1 x2 x3 x4 x5 x6 x7 x8 x9 x10 x11 x12 x13 x14 x15 x16 x17 x18 x19 x20 x21 x22 x23 x24 (ix2 r j) = ten3 A8 i 0 j * col A6 k := by
  rw [show @out5_26 = @out1_26 from rfl, Region1.out26_apply, h6, h8]

theorem rrep_point (x0 : Vec Ideal S1024x32 .f32) (x1 : Vec Ideal S1024x32 .f32) (x2 : Vec Ideal S1024x1000 .f32) (x3 : Vec Ideal S1024x256 .f32) (x4 : Vec Ideal S1024x256 .f32) (x5 : Vec Ideal S1024x1 .f32) (x6 : Vec Ideal S1024x1 .f32) (x7 : Vec Ideal S1024x1 .f32) (x8 : Vec Ideal S1024x2x128 .f32) (x9 : Vec Ideal S1024x2x128 .f32) (x10 : Vec Ideal S1024x2x128 .f32) (x11 : Vec Ideal S32x128 .f32) (x12 : Vec Ideal S1x128 .f32) (x13 : Vec Ideal S32x128 .f32) (x14 : Vec Ideal S1x128 .f32) (x15 : Vec Ideal S1000x128 .f32) (x16 : Vec Ideal S1x128 .f32) (x17 : Vec Ideal S256x512 .f32) (x18 : Vec Ideal S1x128 .f32) (x19 : Vec Ideal S1408x512 .f32) (x20 : Vec Ideal S1x512 .f32) (x21 : Vec Ideal S512x256 .f32) (x22 : Vec Ideal S1x256 .f32) (x23 : Vec Ideal S256x128 .f32) (x24 : Vec Ideal S1x128 .f32)
    (A7 : S64512x1.Idx → EReal) (A8 : S1024x2x128.Idx → EReal)
    (r : Fin 1024) (j : Fin 128) (k : Fin 64512) (i : Fin 1024)
    (h7 : col x7 r = col A7 k) (h8 : ten3 x8 r = ten3 A8 i) :
    out5_27 (F := Ideal) x0 x1 x2 x3 x4 x5 x6 x7 x8 x9 x10 x11 x12 x13 x14 x15 x16 x17 x18 x19 x20 x21 x22 x23 x24 (ix2 r j) = ten3 A8 i 1 j * col A7 k := by
  rw [show @out5_27 = @out1_27 from rfl, Region1.out27_apply, h7, h8]

variable (V : (c : Dev nD) → (b : Ref sig .tc) → Buf (Elt Ideal) ((c : Thread nD τ).loc b)) (c : Dev nD)

def mlp : MLP3 :=
  MLP3.ofTiles (V c (Pipeline.arrRef spec5 19) : S1408x512.Idx → EReal) (V c (Pipeline.arrRef spec5 20) : S1x512.Idx → EReal)
    (V c (Pipeline.arrRef spec5 21) : S512x256.Idx → EReal) (V c (Pipeline.arrRef spec5 22) : S1x256.Idx → EReal)
    (V c (Pipeline.arrRef spec5 23) : S256x128.Idx → EReal) (V c (Pipeline.arrRef spec5 24) : S1x128.Idx → EReal)

def embW : EmbW :=
  EmbW.ofTiles (V c (Pipeline.arrRef spec5 11) : S32x128.Idx → EReal) (V c (Pipeline.arrRef spec5 12) : S1x128.Idx → EReal)
    (V c (Pipeline.arrRef spec5 13) : S32x128.Idx → EReal) (V c (Pipeline.arrRef spec5 14) : S1x128.Idx → EReal)
    (V c (Pipeline.arrRef spec5 15) : S1000x128.Idx → EReal) (V c (Pipeline.arrRef spec5 16) : S1x128.Idx → EReal)
    (V c (Pipeline.arrRef spec5 18) : S1x128.Idx → EReal)

def E : Fin 64512 → Fin 5 → Fin 128 → EReal := fun i =>
  embK (embW V c) (mat (V c (Pipeline.arrRef spec5 17) : S256x512.Idx → EReal))
    (mat (V c (Pipeline.arrRef spec5 0) : S64512x32.Idx → EReal) i) (mat (V c (Pipeline.arrRef spec5 1) : S64512x32.Idx → EReal) i)
    (mat (V c (Pipeline.arrRef spec5 2) : S64512x1000.Idx → EReal) i) (mat (V c (Pipeline.arrRef spec5 3) : S64512x256.Idx → EReal) i)
    (mat (V c (Pipeline.arrRef spec5 4) : S64512x256.Idx → EReal) i) (col (V c (Pipeline.arrRef spec5 5) : S64512x1.Idx → EReal) i)

def value : Carry 1024 :=
  stepK 1024 0 (by norm_num) (E V c) (col (V c (Pipeline.arrRef spec5 6) : S64512x1.Idx → EReal))
    (col (V c (Pipeline.arrRef spec5 7) : S64512x1.Idx → EReal)) (mlp V c)
    (ten3 (V c (Pipeline.arrRef spec5 8) : S1024x2x128.Idx → EReal)) (ten3 (V c (Pipeline.arrRef spec5 9) : S1024x2x128.Idx → EReal))
    (ten3 (V c (Pipeline.arrRef spec5 10) : S1024x2x128.Idx → EReal))

theorem flushed25_eq (t : Fin cfg5.N) :
    (dat5 V c).flushed 25 t = ((cfg5.win 25).blk t).view.read (Elt Ideal) (arr2 (value V c).rep) := by
  show (cfg5.win 25).cut (grid5.coords t) ((dat5 V c).after 25 t) = _
  rw [after5_25]
  refine writeBack25_eq _ _ t fun r j i hi => ?_
  have hN : t.val < 1 := by have h := t.isLt; have e : cfg5.N = 1 := N_5; omega
  have hk : (⟨0 + i.val, by omega⟩ : Fin 64512).val = 1024 * (0 + t.val) + r.val := by show 0 + i.val = _; omega
  exact rep_point (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t) (iblk5 V c 19 t) (iblk5 V c 20 t) (iblk5 V c 21 t) (iblk5 V c 22 t) (iblk5 V c 23 t) (iblk5 V c 24 t)
    (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13)) (V c (Pipeline.arrRef spec5 14)) (V c (Pipeline.arrRef spec5 15)) (V c (Pipeline.arrRef spec5 16)) (V c (Pipeline.arrRef spec5 17)) (V c (Pipeline.arrRef spec5 18)) (V c (Pipeline.arrRef spec5 19)) (V c (Pipeline.arrRef spec5 20)) (V c (Pipeline.arrRef spec5 21)) (V c (Pipeline.arrRef spec5 22)) (V c (Pipeline.arrRef spec5 23)) (V c (Pipeline.arrRef spec5 24))
    r j ⟨0 + i.val, by omega⟩ i
    (funext fun q => block0_apply _ t r q _ hk)
    (funext fun q => block1_apply _ t r q _ hk)
    (funext fun q => block2_apply _ t r q _ hk)
    (funext fun q => block3_apply _ t r q _ hk)
    (funext fun q => block4_apply _ t r q _ hk)
    (block5_apply _ t r 0 _ hk)
    (block6_apply _ t r 0 _ hk)
    (block7_apply _ t r 0 _ hk)
    (funext fun s => funext fun q => block8_apply _ t r s q i hi)
    (funext fun s => funext fun q => block9_apply _ t r s q i hi)
    (funext fun s => funext fun q => block10_apply _ t r s q i hi)
    (block11_eq _ t)
    (block12_eq _ t)
    (block13_eq _ t)
    (block14_eq _ t)
    (block15_eq _ t)
    (block16_eq _ t)
    (block17_eq _ t)
    (block18_eq _ t)
    (block19_eq _ t)
    (block20_eq _ t)
    (block21_eq _ t)
    (block22_eq _ t)
    (block23_eq _ t)
    (block24_eq _ t)

theorem flushed26_eq (t : Fin cfg5.N) :
    (dat5 V c).flushed 26 t = ((cfg5.win 26).blk t).view.read (Elt Ideal) (arr2 (value V c).lrep) := by
  show (cfg5.win 26).cut (grid5.coords t) ((dat5 V c).after 26 t) = _
  rw [after5_26]
  refine writeBack26_eq _ _ t fun r j i hi => ?_
  have hN : t.val < 1 := by have h := t.isLt; have e : cfg5.N = 1 := N_5; omega
  have hk : (⟨0 + i.val, by omega⟩ : Fin 64512).val = 1024 * (0 + t.val) + r.val := by show 0 + i.val = _; omega
  exact lrep_point (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t) (iblk5 V c 19 t) (iblk5 V c 20 t) (iblk5 V c 21 t) (iblk5 V c 22 t) (iblk5 V c 23 t) (iblk5 V c 24 t)
    (V c (Pipeline.arrRef spec5 6)) (V c (Pipeline.arrRef spec5 8)) r j ⟨0 + i.val, by omega⟩ i
    (block6_apply _ t r 0 _ hk) (funext fun s => funext fun q => block8_apply _ t r s q i hi)

theorem flushed27_eq (t : Fin cfg5.N) :
    (dat5 V c).flushed 27 t = ((cfg5.win 27).blk t).view.read (Elt Ideal) (arr2 (value V c).rrep) := by
  show (cfg5.win 27).cut (grid5.coords t) ((dat5 V c).after 27 t) = _
  rw [after5_27]
  refine writeBack27_eq _ _ t fun r j i hi => ?_
  have hN : t.val < 1 := by have h := t.isLt; have e : cfg5.N = 1 := N_5; omega
  have hk : (⟨0 + i.val, by omega⟩ : Fin 64512).val = 1024 * (0 + t.val) + r.val := by show 0 + i.val = _; omega
  exact rrep_point (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (iblk5 V c 14 t) (iblk5 V c 15 t) (iblk5 V c 16 t) (iblk5 V c 17 t) (iblk5 V c 18 t) (iblk5 V c 19 t) (iblk5 V c 20 t) (iblk5 V c 21 t) (iblk5 V c 22 t) (iblk5 V c 23 t) (iblk5 V c 24 t)
    (V c (Pipeline.arrRef spec5 7)) (V c (Pipeline.arrRef spec5 8)) r j ⟨0 + i.val, by omega⟩ i
    (block7_apply _ t r 0 _ hk) (funext fun s => funext fun q => block8_apply _ t r s q i hi)

theorem rep_eq : ((dat5 V c).arrAt 25 cfg5.N : S1024x128.Idx → EReal) = arr2 (value V c).rep := by
  exact (dat5 V c).arrAt_eq_of_cover 25 (arr2 (value V c).rep) (fun t _ => flushed25_eq V c t) (rowCover25 c)

theorem lrep_eq : ((dat5 V c).arrAt 26 cfg5.N : S1024x128.Idx → EReal) = arr2 (value V c).lrep := by
  exact (dat5 V c).arrAt_eq_of_cover 26 (arr2 (value V c).lrep) (fun t _ => flushed26_eq V c t) (rowCover26 c)

theorem rrep_eq : ((dat5 V c).arrAt 27 cfg5.N : S1024x128.Idx → EReal) = arr2 (value V c).rrep := by
  exact (dat5 V c).arrAt_eq_of_cover 27 (arr2 (value V c).rrep) (fun t _ => flushed27_eq V c t) (rowCover27 c)

end Cert.KernelIdeal.Region5

end
-- ==== Proof.KLevel0.lean ====
import proofs.«410031_j84061099917532_3_alg».proof.Proof.Gen.KernelIdeal.Frame
import proofs.«410031_j84061099917532_3_alg».proof.Proof.Spec
import proofs.«410031_j84061099917532_3_alg».proof.Proof.SpecPool
import proofs.«410031_j84061099917532_3_alg».proof.Proof.KArgs
import proofs.«410031_j84061099917532_3_alg».proof.Proof.KKeep
import proofs.«410031_j84061099917532_3_alg».proof.Proof.KStable
import proofs.«410031_j84061099917532_3_alg».proof.Proof.KBridge
import proofs.«410031_j84061099917532_3_alg».proof.Proof.KHost0
import proofs.«410031_j84061099917532_3_alg».proof.Proof.KHost5
import proofs.«410031_j84061099917532_3_alg».proof.Proof.R5Out

noncomputable section

open Idealize.ShloMosaic Idealize.ShloMosaic.TcCoe Idealize.SL.Sem
open TreeNN ValueIdx

namespace Cert.KernelIdeal.Chain

open Cert.KernelIdeal Cert.KernelIdeal.Gen

variable (m : (ℓ : Loc nD τ sig) → Buf (Elt Ideal) ℓ) (ρ : Dev nD → PrngReg) (c : Dev nD)

theorem fixed0_e (b : Ref sig .tc) (hf : b ∈ Stable.fixed) :
    W11 m ρ c (Proc.devRef .tc b) = W1 m ρ c (Proc.devRef .tc b) := Stable.W11_fixed m ρ c b hf

theorem arg0_e (b : Ref sig .tc) (hf : b ∈ Stable.fixed) (ha : b ∈ Stable.args) :
    W11 m ρ c (Proc.devRef .tc b) = W0 m ρ c (Proc.devRef .tc b) :=
  (Stable.W11_fixed m ρ c b hf).trans (Stable.W1_arg m ρ c b ha)

theorem arg0_b (b : Ref sig .tc) (hf : b ∈ Stable.fixed) (ha : b ∈ Stable.args) :
    W10 m ρ c (Proc.devRef .tc b) = W0 m ρ c (Proc.devRef .tc b) :=
  (Stable.W10_fixed m ρ c b hf).trans (Stable.W1_arg m ρ c b ha)

theorem mlp0_eq : Region5.mlp (V11 m ρ) c = pm m c := by
  unfold Region5.mlp pm
  exact mlp_bridge _ _ _ _ _ _ _ _ _ _ _ _
    (arg0_e m ρ c main_arg16 (fx 16 (by decide)) (ag 16 (by decide)))
    (fun j => (Host5.v83_apply m ρ c j).trans (congrFun (arg0_b m ρ c main_arg17 (fx 17 (by decide)) (ag 17 (by decide))) (ix1 j)))
    (arg0_e m ρ c main_arg18 (fx 18 (by decide)) (ag 18 (by decide)))
    (fun j => (Host5.v84_apply m ρ c j).trans (congrFun (arg0_b m ρ c main_arg19 (fx 19 (by decide)) (ag 19 (by decide))) (ix1 j)))
    (arg0_e m ρ c main_arg20 (fx 20 (by decide)) (ag 20 (by decide)))
    (fun j => (Host5.v85_apply m ρ c j).trans (congrFun (arg0_b m ρ c main_arg21 (fx 21 (by decide)) (ag 21 (by decide))) (ix1 j)))

theorem embW0_eq : Region5.embW (V11 m ρ) c =
    EmbW.ofArrays ((m ((c : Thread nD τ).loc main_arg8)) : S32x128.Idx → EReal) ((m ((c : Thread nD τ).loc main_arg9)) : S128.Idx → EReal)
      ((m ((c : Thread nD τ).loc main_arg10)) : S32x128.Idx → EReal) ((m ((c : Thread nD τ).loc main_arg11)) : S128.Idx → EReal)
      ((m ((c : Thread nD τ).loc main_arg12)) : S1000x128.Idx → EReal) ((m ((c : Thread nD τ).loc main_arg13)) : S128.Idx → EReal)
      ((m ((c : Thread nD τ).loc main_arg15)) : S128.Idx → EReal) := by
  unfold Region5.embW
  exact embW_bridge _ _ _ _ _ _ _ _ _ _ _ _ _ _
    (arg0_e m ρ c main_arg8 (fx 8 (by decide)) (ag 8 (by decide)))
    (fun j => (Host5.v79_apply m ρ c j).trans (congrFun (arg0_b m ρ c main_arg9 (fx 9 (by decide)) (ag 9 (by decide))) (ix1 j)))
    (arg0_e m ρ c main_arg10 (fx 10 (by decide)) (ag 10 (by decide)))
    (fun j => (Host5.v80_apply m ρ c j).trans (congrFun (arg0_b m ρ c main_arg11 (fx 11 (by decide)) (ag 11 (by decide))) (ix1 j)))
    (arg0_e m ρ c main_arg12 (fx 12 (by decide)) (ag 12 (by decide)))
    (fun j => (Host5.v81_apply m ρ c j).trans (congrFun (arg0_b m ρ c main_arg13 (fx 13 (by decide)) (ag 13 (by decide))) (ix1 j)))
    (fun j => (Host5.v82_apply m ρ c j).trans (congrFun (arg0_b m ρ c main_arg15 (fx 15 (by decide)) (ag 15 (by decide))) (ix1 j)))

theorem E0_eq : Region5.E (V11 m ρ) c = Em m c := by
  funext i
  unfold Region5.E Em embOfArrays
  rw [embW0_eq m ρ c]
  exact emb_bridge _ _ _ _ _ _ _ _ _ _ _ _ _ _ _
    (arg0_e m ρ c main_arg0 (fx 0 (by decide)) (ag 0 (by decide)))
    (arg0_e m ρ c main_arg1 (fx 1 (by decide)) (ag 1 (by decide)))
    (arg0_e m ρ c main_arg2 (fx 2 (by decide)) (ag 2 (by decide)))
    (fun k n => (congrFun (fixed0_e m ρ c main_v23 (fx 39 (by decide))) (ix2 k n)).trans (Host0.v23_apply m ρ c k n))
    (fun i k => (congrFun (fixed0_e m ρ c main_v0 (fx 34 (by decide))) (ix2 i k)).trans (Host0.v0_apply m ρ c i k))
    (fun i k => (congrFun (fixed0_e m ρ c main_v1 (fx 35 (by decide))) (ix2 i k)).trans (Host0.v1_apply m ρ c i k))
    (fun i => (congrFun (fixed0_e m ρ c main_v2 (fx 36 (by decide))) (ix2 i 0)).trans (Host0.v2_apply m ρ c i)) i

theorem lm0_eq : col (V11 m ρ c (Pipeline.arrRef spec5 6) : S64512x1.Idx → EReal) = lmm m c := by
  funext i
  exact (congrFun (fixed0_e m ρ c main_v4 (fx 37 (by decide))) (ix2 i 0)).trans (Host0.v4_apply m ρ c i)
theorem rm0_eq : col (V11 m ρ c (Pipeline.arrRef spec5 7) : S64512x1.Idx → EReal) = rmm m c := by
  funext i
  exact (congrFun (fixed0_e m ρ c main_v6 (fx 38 (by decide))) (ix2 i 0)).trans (Host0.v6_apply m ρ c i)

theorem kids0_rep (f : Fin 2048 → Fin 128 → EReal)
    (h : (W10 m ρ c (Proc.devRef .tc main_v75_0) : S2048x128.Idx → EReal) = arr2 f) :
    ten3 (V11 m ρ c (Pipeline.arrRef spec5 8) : S1024x2x128.Idx → EReal) = pair (n := 1024) (by norm_num) f :=
  kids_bridge _ _ _ f h (fun i s j => Host5.v76_apply m ρ c i s j)
theorem kids0_lrep (f : Fin 2048 → Fin 128 → EReal)
    (h : (W10 m ρ c (Proc.devRef .tc main_v75_1) : S2048x128.Idx → EReal) = arr2 f) :
    ten3 (V11 m ρ c (Pipeline.arrRef spec5 9) : S1024x2x128.Idx → EReal) = pair (n := 1024) (by norm_num) f :=
  kids_bridge _ _ _ f h (fun i s j => Host5.v77_apply m ρ c i s j)
theorem kids0_rrep (f : Fin 2048 → Fin 128 → EReal)
    (h : (W10 m ρ c (Proc.devRef .tc main_v75_2) : S2048x128.Idx → EReal) = arr2 f) :
    ten3 (V11 m ρ c (Pipeline.arrRef spec5 10) : S1024x2x128.Idx → EReal) = pair (n := 1024) (by norm_num) f :=
  kids_bridge _ _ _ f h (fun i s j => Host5.v78_apply m ρ c i s j)

theorem value0_eq (below : Carry 2048)
    (h0 : (W10 m ρ c (Proc.devRef .tc main_v75_0) : S2048x128.Idx → EReal) = arr2 below.rep)
    (h1 : (W10 m ρ c (Proc.devRef .tc main_v75_1) : S2048x128.Idx → EReal) = arr2 below.lrep)
    (h2 : (W10 m ρ c (Proc.devRef .tc main_v75_2) : S2048x128.Idx → EReal) = arr2 below.rrep) :
    Region5.value (V11 m ρ) c = step 1024 0 (by norm_num) (by norm_num) (Em m c) (lmm m c) (rmm m c) (pm m c) below := by
  unfold Region5.value step
  rw [E0_eq m ρ c, lm0_eq m ρ c, rm0_eq m ρ c, mlp0_eq m ρ c, kids0_rep m ρ c below.rep h0,
    kids0_lrep m ρ c below.lrep h1, kids0_rrep m ρ c below.rrep h2]

theorem level0_eq
    (hbelow : (W10 m ρ c (Proc.devRef .tc main_v75_0) : S2048x128.Idx → EReal) = arr2 (level1 (Em m c) (lmm m c) (rmm m c) (pm m c)).rep
      ∧ (W10 m ρ c (Proc.devRef .tc main_v75_1) : S2048x128.Idx → EReal) = arr2 (level1 (Em m c) (lmm m c) (rmm m c) (pm m c)).lrep
      ∧ (W10 m ρ c (Proc.devRef .tc main_v75_2) : S2048x128.Idx → EReal) = arr2 (level1 (Em m c) (lmm m c) (rmm m c) (pm m c)).rrep) :
    (W12 m ρ c (Proc.devRef .tc main_v86_0) : S1024x128.Idx → EReal) = arr2 (level0 (Em m c) (lmm m c) (rmm m c) (pm m c)).rep
      ∧ (W12 m ρ c (Proc.devRef .tc main_v86_1) : S1024x128.Idx → EReal) = arr2 (level0 (Em m c) (lmm m c) (rmm m c) (pm m c)).lrep
      ∧ (W12 m ρ c (Proc.devRef .tc main_v86_2) : S1024x128.Idx → EReal) = arr2 (level0 (Em m c) (lmm m c) (rmm m c) (pm m c)).rrep := by
  have hv := value0_eq m ρ c _ hbelow.1 hbelow.2.1 hbelow.2.2
  refine ⟨?_, ?_, ?_⟩
  · exact ((W12_arr m ρ c 25).trans (Region5.rep_eq (V11 m ρ) c)).trans (congrArg (fun v : Carry 1024 => arr2 v.rep) hv)
  · exact ((W12_arr m ρ c 26).trans (Region5.lrep_eq (V11 m ρ) c)).trans (congrArg (fun v : Carry 1024 => arr2 v.lrep) hv)
  · exact ((W12_arr m ρ c 27).trans (Region5.rrep_eq (V11 m ρ) c)).trans (congrArg (fun v : Carry 1024 => arr2 v.rrep) hv)

end Cert.KernelIdeal.Chain

end
-- ==== Proof.KHost6.lean ====
import proofs.«410031_j84061099917532_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host6

open Cert.KernelIdeal Cert.KernelIdeal.Gen Idealize.ShloMosaic Idealize.ShloMosaic.TcCoe Idealize.ShloMosaic.ValueIdx
open Idealize.ShloMosaic.StableHlo

section Contents

variable (V : Valuation τ sig (Elt Ideal))

theorem v87_term : (StableHlo.after (hostOps6 (F := Ideal)) V (Proc.devRef .tc main_v87) : S1x128.Idx → EReal) =
    shapeCast S1x128 (V (Proc.devRef .tc main_arg23) : S128.Idx → EReal) Facts₀.shapeCasts_S128_S1x128 := by
  after_results; rfl

theorem v87_at (j : Fin 128) :
    (StableHlo.after (hostOps6 (F := Ideal)) V (Proc.devRef .tc main_v87) : S1x128.Idx → EReal) (ix2 0 j) =
      (V (Proc.devRef .tc main_arg23) : S128.Idx → EReal) (ix1 j) := by
  rw [v87_term]
  exact shapeCast_a_1a_apply (a := 128) _ _ 0 j

theorem v88_term : (StableHlo.after (hostOps6 (F := Ideal)) V (Proc.devRef .tc main_v88) : S1x128.Idx → EReal) =
    shapeCast S1x128 (V (Proc.devRef .tc main_arg25) : S128.Idx → EReal) Facts₀.shapeCasts_S128_S1x128 := by
  after_results; rfl

theorem v88_at (j : Fin 128) :
    (StableHlo.after (hostOps6 (F := Ideal)) V (Proc.devRef .tc main_v88) : S1x128.Idx → EReal) (ix2 0 j) =
      (V (Proc.devRef .tc main_arg25) : S128.Idx → EReal) (ix1 j) := by
  rw [v88_term]
  exact shapeCast_a_1a_apply (a := 128) _ _ 0 j

theorem v89_term : (StableHlo.after (hostOps6 (F := Ideal)) V (Proc.devRef .tc main_v89) : S1x1.Idx → EReal) =
    shapeCast S1x1 (V (Proc.devRef .tc main_arg27) : S1.Idx → EReal) Facts₀.shapeCasts_S1_S1x1 := by
  after_results; rfl

theorem v89_at (j : Fin 1) :
    (StableHlo.after (hostOps6 (F := Ideal)) V (Proc.devRef .tc main_v89) : S1x1.Idx → EReal) (ix2 0 j) =
      (V (Proc.devRef .tc main_arg27) : S1.Idx → EReal) (ix1 j) := by
  rw [v89_term]
  exact shapeCast_a_1a_apply (a := 1) _ _ 0 j

theorem v90_term : (StableHlo.after (hostOps6 (F := Ideal)) V (Proc.devRef .tc main_v90) : S1x128.Idx → EReal) =
    shapeCast S1x128 (V (Proc.devRef .tc main_arg29) : S128.Idx → EReal) Facts₀.shapeCasts_S128_S1x128 := by
  after_results; rfl

theorem v90_at (j : Fin 128) :
    (StableHlo.after (hostOps6 (F := Ideal)) V (Proc.devRef .tc main_v90) : S1x128.Idx → EReal) (ix2 0 j) =
      (V (Proc.devRef .tc main_arg29) : S128.Idx → EReal) (ix1 j) := by
  rw [v90_term]
  exact shapeCast_a_1a_apply (a := 128) _ _ 0 j

theorem v91_term : (StableHlo.after (hostOps6 (F := Ideal)) V (Proc.devRef .tc main_v91) : S1x128.Idx → EReal) =
    shapeCast S1x128 (V (Proc.devRef .tc main_arg31) : S128.Idx → EReal) Facts₀.shapeCasts_S128_S1x128 := by
  after_results; rfl

theorem v91_at (j : Fin 128) :
    (StableHlo.after (hostOps6 (F := Ideal)) V (Proc.devRef .tc main_v91) : S1x128.Idx → EReal) (ix2 0 j) =
      (V (Proc.devRef .tc main_arg31) : S128.Idx → EReal) (ix1 j) := by
  rw [v91_term]
  exact shapeCast_a_1a_apply (a := 128) _ _ 0 j

theorem v92_term : (StableHlo.after (hostOps6 (F := Ideal)) V (Proc.devRef .tc main_v92) : S1x1.Idx → EReal) =
    shapeCast S1x1 (V (Proc.devRef .tc main_arg33) : S1.Idx → EReal) Facts₀.shapeCasts_S1_S1x1 := by
  after_results; rfl

theorem v92_at (j : Fin 1) :
    (StableHlo.after (hostOps6 (F := Ideal)) V (Proc.devRef .tc main_v92) : S1x1.Idx → EReal) (ix2 0 j) =
      (V (Proc.devRef .tc main_arg33) : S1.Idx → EReal) (ix1 j) := by
  rw [v92_term]
  exact shapeCast_a_1a_apply (a := 1) _ _ 0 j

end Contents

variable (m : (ℓ : Loc nD τ sig) → Buf (Elt Ideal) ℓ) (ρ : Dev nD → PrngReg) (c : Dev nD)

theorem v87_apply (j : Fin 128) :
    (W13 m ρ c (Proc.devRef .tc main_v87) : S1x128.Idx → EReal) (ix2 0 j) =
      (W12 m ρ c (Proc.devRef .tc main_arg23) : S128.Idx → EReal) (ix1 j) :=
  v87_at (W12 m ρ c) j

theorem v88_apply (j : Fin 128) :
    (W13 m ρ c (Proc.devRef .tc main_v88) : S1x128.Idx → EReal) (ix2 0 j) =
      (W12 m ρ c (Proc.devRef .tc main_arg25) : S128.Idx → EReal) (ix1 j) :=
  v88_at (W12 m ρ c) j

theorem v89_apply :
    (W13 m ρ c (Proc.devRef .tc main_v89) : S1x1.Idx → EReal) (ix2 0 0) =
      (W12 m ρ c (Proc.devRef .tc main_arg27) : S1.Idx → EReal) (ix1 0) :=
  v89_at (W12 m ρ c) 0

theorem v90_apply (j : Fin 128) :
    (W13 m ρ c (Proc.devRef .tc main_v90) : S1x128.Idx → EReal) (ix2 0 j) =
      (W12 m ρ c (Proc.devRef .tc main_arg29) : S128.Idx → EReal) (ix1 j) :=
  v90_at (W12 m ρ c) j

theorem v91_apply (j : Fin 128) :
    (W13 m ρ c (Proc.devRef .tc main_v91) : S1x128.Idx → EReal) (ix2 0 j) =
      (W12 m ρ c (Proc.devRef .tc main_arg31) : S128.Idx → EReal) (ix1 j) :=
  v91_at (W12 m ρ c) j

theorem v92_apply :
    (W13 m ρ c (Proc.devRef .tc main_v92) : S1x1.Idx → EReal) (ix2 0 0) =
      (W12 m ρ c (Proc.devRef .tc main_arg33) : S1.Idx → EReal) (ix1 0) :=
  v92_at (W12 m ρ c) 0

end Cert.KernelIdeal.Host6
-- ==== Proof.R6Tile.lean ====
import proofs.«410031_j84061099917532_3_alg».proof.Proof.Gen.KernelIdeal.Frame
import proofs.«410031_j84061099917532_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open TreeNN ValueIdx

namespace Cert.KernelIdeal.Region6

open Cert.KernelIdeal Cert.KernelIdeal.Gen

theorem lhs128_0 (j : S1024x128.Idx) (k : dot_S1024x128_S128x128_S1024x128_1_0_0_1_n_n.contr.Idx) :
    (dot_S1024x128_S128x128_S1024x128_1_0_0_1_n_n.lhsIdx j k 0 : ℕ) = j 0 := by
  simp [DotDims.lhsIdx, dot_S1024x128_S128x128_S1024x128_1_0_0_1_n_n]; rfl
theorem lhs128_1 (j : S1024x128.Idx) (k : dot_S1024x128_S128x128_S1024x128_1_0_0_1_n_n.contr.Idx) :
    (dot_S1024x128_S128x128_S1024x128_1_0_0_1_n_n.lhsIdx j k 1 : ℕ) = k ⟨0, by decide⟩ := by
  simp [DotDims.lhsIdx, dot_S1024x128_S128x128_S1024x128_1_0_0_1_n_n]; rfl
theorem rhs128_0 (j : S1024x128.Idx) (k : dot_S1024x128_S128x128_S1024x128_1_0_0_1_n_n.contr.Idx) :
    (dot_S1024x128_S128x128_S1024x128_1_0_0_1_n_n.rhsIdx j k 0 : ℕ) = k ⟨0, by decide⟩ := by
  simp [DotDims.rhsIdx, dot_S1024x128_S128x128_S1024x128_1_0_0_1_n_n]; rfl
theorem rhs128_1 (j : S1024x128.Idx) (k : dot_S1024x128_S128x128_S1024x128_1_0_0_1_n_n.contr.Idx) :
    (dot_S1024x128_S128x128_S1024x128_1_0_0_1_n_n.rhsIdx j k 1 : ℕ) = j 1 := by
  simp [DotDims.rhsIdx, dot_S1024x128_S128x128_S1024x128_1_0_0_1_n_n]; rfl

theorem lhsc_0 (j : S1024x1.Idx) (k : dot_S1024x128_S128x1_S1024x1_1_0_0_1_n_n.contr.Idx) :
    (dot_S1024x128_S128x1_S1024x1_1_0_0_1_n_n.lhsIdx j k 0 : ℕ) = j 0 := by
  simp [DotDims.lhsIdx, dot_S1024x128_S128x1_S1024x1_1_0_0_1_n_n]; rfl
theorem lhsc_1 (j : S1024x1.Idx) (k : dot_S1024x128_S128x1_S1024x1_1_0_0_1_n_n.contr.Idx) :
    (dot_S1024x128_S128x1_S1024x1_1_0_0_1_n_n.lhsIdx j k 1 : ℕ) = k ⟨0, by decide⟩ := by
  simp [DotDims.lhsIdx, dot_S1024x128_S128x1_S1024x1_1_0_0_1_n_n]; rfl
theorem rhsc_0 (j : S1024x1.Idx) (k : dot_S1024x128_S128x1_S1024x1_1_0_0_1_n_n.contr.Idx) :
    (dot_S1024x128_S128x1_S1024x1_1_0_0_1_n_n.rhsIdx j k 0 : ℕ) = k ⟨0, by decide⟩ := by
  simp [DotDims.rhsIdx, dot_S1024x128_S128x1_S1024x1_1_0_0_1_n_n]; rfl
theorem rhsc_1 (j : S1024x1.Idx) (k : dot_S1024x128_S128x1_S1024x1_1_0_0_1_n_n.contr.Idx) :
    (dot_S1024x128_S128x1_S1024x1_1_0_0_1_n_n.rhsIdx j k 1 : ℕ) = j 1 := by
  simp [DotDims.rhsIdx, dot_S1024x128_S128x1_S1024x1_1_0_0_1_n_n]
  exact (Nat.lt_one_iff.mp (j 1).isLt).symm

theorem mm128_apply (x : FVec Ideal S1024x128 .bf16) (W : FVec Ideal S128x128 .bf16) (r : Fin 1024) (j : Fin 128) :
    matmul dot_S1024x128_S128x128_S1024x128_1_0_0_1_n_n none x W (constant (F := Ideal) S1024x128 .f32 0x00000000#32) (ix2 r j)
      = ∑ k : Fin 128, x (ix2 r k) * W (ix2 k j) := by
  refine (Ideal.matmul_constant_zero_apply _ none x W (ix2 r j)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  congr 2
  · funext a
    match a with
    | ⟨0, _⟩ => exact Fin.ext (lhs128_0 _ _)
    | ⟨1, _⟩ => exact Fin.ext ((lhs128_1 _ _).trans hk)
  · funext a
    match a with
    | ⟨0, _⟩ => exact Fin.ext ((rhs128_0 _ _).trans hk)
    | ⟨1, _⟩ => exact Fin.ext (rhs128_1 _ _)

theorem mmc_apply (x : FVec Ideal S1024x128 .bf16) (W : FVec Ideal S128x1 .bf16) (r : Fin 1024) (j : Fin 1) :
    matmul dot_S1024x128_S128x1_S1024x1_1_0_0_1_n_n none x W (constant (F := Ideal) S1024x1 .f32 0x00000000#32) (ix2 r j)
      = ∑ k : Fin 128, x (ix2 r k) * W (ix2 k j) := by
  refine (Ideal.matmul_constant_zero_apply _ none x W (ix2 r j)).trans ?_
  rw [← Equiv.sum_comp (contrEquiv1 dot_S1024x128_S128x1_S1024x1_1_0_0_1_n_n 128 rfl rfl).symm]
  refine Finset.sum_congr rfl fun k _ => ?_
  have hk := contrEquiv1_symm_val dot_S1024x128_S128x1_S1024x1_1_0_0_1_n_n 128 rfl rfl k
  congr 2
  · funext a
    match a with
    | ⟨0, _⟩ => exact Fin.ext (lhsc_0 _ _)
    | ⟨1, _⟩ => exact Fin.ext ((lhsc_1 _ _).trans hk)
  · funext a
    match a with
    | ⟨0, _⟩ => exact Fin.ext ((rhsc_0 _ _).trans hk)
    | ⟨1, _⟩ => exact Fin.ext (rhsc_1 _ _)

theorem layer_apply (x : FVec Ideal S1024x128 .bf16) (W : FVec Ideal S128x128 .bf16) (b : Vec Ideal S1x128 .f32) (r : Fin 1024) :
    mat (truncf .bf16 (maximumf (addf (matmul dot_S1024x128_S128x128_S1024x128_1_0_0_1_n_n none x W
        (constant (F := Ideal) S1024x128 .f32 0x00000000#32))
        (broadcastTo S1024x128 (shapeCast S1x128 b shapeCasts_S1x128_S1x128) broadcasts_S1x128_S1024x128))
        (broadcast S1024x128 (Scalar.ofBits (F := Ideal) .f32 0x00000000#32))) bitsLt_bf16_f32 : FVec Ideal S1024x128 .bf16) r
      = relu (dense (mat x r) (mat W) (row b)) := by
  funext j
  show maximumf (addf (matmul dot_S1024x128_S128x128_S1024x128_1_0_0_1_n_n none x W
        (constant (F := Ideal) S1024x128 .f32 0x00000000#32))
        (broadcastTo S1024x128 (shapeCast S1x128 b shapeCasts_S1x128_S1x128) broadcasts_S1x128_S1024x128))
        (broadcast S1024x128 (Scalar.ofBits (F := Ideal) .f32 0x00000000#32)) (ix2 r j) = _
  rw [maximumf_apply, addf_apply, mm128_apply, shapeCast_self, broadcastTo_1b_ab_apply, broadcast_apply]
  show max _ (Ideal.ofBits .f32 0x00000000#32) = _
  rw [Ideal.ofBits_zero_f32]
  rfl

theorem final_apply (x : FVec Ideal S1024x128 .bf16) (W : FVec Ideal S128x1 .bf16) (b : Vec Ideal S1x1 .f32) (r : Fin 1024) :
    logistic (addf (matmul dot_S1024x128_S128x1_S1024x1_1_0_0_1_n_n none x W (constant (F := Ideal) S1024x1 .f32 0x00000000#32))
        (broadcastTo S1024x1 (shapeCast S1x1 b shapeCasts_S1x1_S1x1) broadcasts_S1x1_S1024x1)) (ix2 r 0)
      = Ideal.logistic (dense (mat x r) (mat W) (row b) 0) := by
  show Ideal.logistic (addf (matmul dot_S1024x128_S128x1_S1024x1_1_0_0_1_n_n none x W (constant (F := Ideal) S1024x1 .f32 0x00000000#32))
        (broadcastTo S1024x1 (shapeCast S1x1 b shapeCasts_S1x1_S1x1) broadcasts_S1x1_S1024x1) (ix2 r 0)) = _
  rw [addf_apply, mmc_apply, shapeCast_self, broadcastTo_1b_ab_apply]
  rfl

theorem pay2_apply (v0 : Vec Ideal S1024x128 .f32) (i : S1024x128.Idx) : k6_pay2 (F := Ideal) v0 i = v0 i := by
  unfold k6_pay2
  rw [truncf_apply, shapeCast_self]
theorem pay4_apply (v32 : Vec Ideal S128x128 .f32) (i : S128x128.Idx) : k6_pay4 (F := Ideal) v32 i = v32 i := by
  unfold k6_pay4
  rw [truncf_apply]

theorem pay2_eq (v0 : Vec Ideal S1024x128 .f32) : k6_pay2 (F := Ideal) v0 = v0 := funext (pay2_apply v0)
theorem pay4_eq (v32 : Vec Ideal S128x128 .f32) : k6_pay4 (F := Ideal) v32 = v32 := funext (pay4_apply v32)

theorem pay3_apply (v0 : Vec Ideal S1024x128 .f32) (v3 : Vec Ideal S128x128 .f32) (v6 : Vec Ideal S1x128 .f32)
    (v13 : Vec Ideal S128x128 .f32) (v16 : Vec Ideal S1x128 .f32) (v23 : Vec Ideal S128x1 .f32) (v26 : Vec Ideal S1x1 .f32)
    (r : Fin 1024) :
    k6_pay3 (F := Ideal) v0 v3 v6 v13 v16 v23 v26 (ix2 r 0) = (HeadW.ofTiles v3 v6 v13 v16 v23 v26).apply (mat v0 r) := by
  unfold k6_pay3
  refine (final_apply _ _ _ r).trans ?_
  rw [layer_apply, layer_apply, pay2_eq]
  rfl

theorem pay1_apply (v2 : FVec Ideal S1024x128 .bf16) (v33 : FVec Ideal S128x128 .bf16) (v35 : Vec Ideal S1x128 .f32)
    (v42 : Vec Ideal S128x128 .f32) (v45 : Vec Ideal S1x128 .f32) (v52 : Vec Ideal S128x1 .f32) (v55 : Vec Ideal S1x1 .f32)
    (r : Fin 1024) :
    k6_pay1 (F := Ideal) v2 v33 (constant S1024x128 .f32 0x00000000#32) v35 v42 v45 v52 v55 (ix2 r 0)
      = (HeadW.ofTiles v33 v35 v42 v45 v52 v55).apply (mat v2 r) := by
  unfold k6_pay1
  refine (final_apply _ _ _ r).trans ?_
  rw [layer_apply, layer_apply]
  rfl

theorem offsets_zero : (![0, 0] : Fin 2 → Nat) = fun _ => 0 := funext fun a => by
  match a with
  | ⟨0, _⟩ => rfl
  | ⟨1, _⟩ => rfl

theorem out13_apply (x0 : Vec Ideal S1024x128 .f32) (x1 : Vec Ideal S128x128 .f32) (x2 : Vec Ideal S1x128 .f32) (x3 : Vec Ideal S128x128 .f32) (x4 : Vec Ideal S1x128 .f32) (x5 : Vec Ideal S128x1 .f32) (x6 : Vec Ideal S1x1 .f32) (x7 : Vec Ideal S128x128 .f32) (x8 : Vec Ideal S1x128 .f32) (x9 : Vec Ideal S128x128 .f32) (x10 : Vec Ideal S1x128 .f32) (x11 : Vec Ideal S128x1 .f32) (x12 : Vec Ideal S1x1 .f32) (r : Fin 1024) :
    out6_13 (F := Ideal) x0 x1 x2 x3 x4 x5 x6 x7 x8 x9 x10 x11 x12 (ix2 r 0) = (HeadW.ofTiles x1 x2 x3 x4 x5 x6).apply (mat x0 r) := by
  unfold out6_13
  rw [View.canon_unit_zero offsets_zero]
  simp only [View.ld_unit_zero (S := S1024x128) offsets_zero, View.ld_unit_zero (S := S128x128) offsets_zero,
    View.ld_unit_zero (S := S1x128) offsets_zero, View.ld_unit_zero (S := S128x1) offsets_zero,
    View.ld_unit_zero (S := S1x1) offsets_zero]
  exact pay3_apply x0 x1 x2 x3 x4 x5 x6 r

theorem out14_apply (x0 : Vec Ideal S1024x128 .f32) (x1 : Vec Ideal S128x128 .f32) (x2 : Vec Ideal S1x128 .f32) (x3 : Vec Ideal S128x128 .f32) (x4 : Vec Ideal S1x128 .f32) (x5 : Vec Ideal S128x1 .f32) (x6 : Vec Ideal S1x1 .f32) (x7 : Vec Ideal S128x128 .f32) (x8 : Vec Ideal S1x128 .f32) (x9 : Vec Ideal S128x128 .f32) (x10 : Vec Ideal S1x128 .f32) (x11 : Vec Ideal S128x1 .f32) (x12 : Vec Ideal S1x1 .f32) (r : Fin 1024) :
    out6_14 (F := Ideal) x0 x1 x2 x3 x4 x5 x6 x7 x8 x9 x10 x11 x12 (ix2 r 0) = (HeadW.ofTiles x7 x8 x9 x10 x11 x12).apply (mat x0 r) := by
  unfold out6_14
  rw [View.canon_unit_zero offsets_zero]
  simp only [View.ld_unit_zero (S := S1024x128) offsets_zero, View.ld_unit_zero (S := S128x128) offsets_zero,
    View.ld_unit_zero (S := S1x128) offsets_zero, View.ld_unit_zero (S := S128x1) offsets_zero,
    View.ld_unit_zero (S := S1x1) offsets_zero]
  refine (pay1_apply (k6_pay2 x0) (k6_pay4 x7) x8 x9 x10 x11 x12 r).trans ?_
  rw [pay2_eq, pay4_eq]

end Cert.KernelIdeal.Region6

end
-- ==== Proof.R6Out.lean ====
import proofs.«410031_j84061099917532_3_alg».proof.Proof.Gen.KernelIdeal.Frame
import proofs.«410031_j84061099917532_3_alg».proof.Proof.R6Tile

noncomputable section

open Idealize.ShloMosaic Idealize.ShloMosaic.TcCoe Idealize.SL.Sem
open TreeNN ValueIdx

namespace Cert.KernelIdeal.Region6

open Cert.KernelIdeal Cert.KernelIdeal.Gen

variable (V : (c : Dev nD) → (b : Ref sig .tc) → Buf (Elt Ideal) ((c : Thread nD τ).loc b)) (c : Dev nD)

def costW : HeadW :=
  HeadW.ofTiles (V c (Pipeline.arrRef spec6 1) : S128x128.Idx → EReal) (V c (Pipeline.arrRef spec6 2) : S1x128.Idx → EReal)
    (V c (Pipeline.arrRef spec6 3) : S128x128.Idx → EReal) (V c (Pipeline.arrRef spec6 4) : S1x128.Idx → EReal)
    (V c (Pipeline.arrRef spec6 5) : S128x1.Idx → EReal) (V c (Pipeline.arrRef spec6 6) : S1x1.Idx → EReal)

def cardW : HeadW :=
  HeadW.ofTiles (V c (Pipeline.arrRef spec6 7) : S128x128.Idx → EReal) (V c (Pipeline.arrRef spec6 8) : S1x128.Idx → EReal)
    (V c (Pipeline.arrRef spec6 9) : S128x128.Idx → EReal) (V c (Pipeline.arrRef spec6 10) : S1x128.Idx → EReal)
    (V c (Pipeline.arrRef spec6 11) : S128x1.Idx → EReal) (V c (Pipeline.arrRef spec6 12) : S1x1.Idx → EReal)

theorem iblk_0 (t : Fin cfg6.N) : (iblk6 V c 0 t : S1024x128.Idx → EReal) = V c (Pipeline.arrRef spec6 0) := by
  obtain rfl : t = t6_0 := fin_N6 t
  have hz : (fun a => win6_0.index t6_0 a * main_v86_0.ty.shape.size a) = fun _ => 0 := funext fun a => by fin_cases a <;> decide
  exact Memref.read_access_unit_zero (Elt Ideal) main_v86_0 hz (fun a => by rw [congrFun hz a]; simp) (V c (Pipeline.arrRef spec6 0))

theorem iblk_1 (t : Fin cfg6.N) : (iblk6 V c 1 t : S128x128.Idx → EReal) = V c (Pipeline.arrRef spec6 1) := by
  obtain rfl : t = t6_0 := fin_N6 t
  have hz : (fun a => win6_1.index t6_0 a * main_arg22.ty.shape.size a) = fun _ => 0 := funext fun a => by fin_cases a <;> decide
  exact Memref.read_access_unit_zero (Elt Ideal) main_arg22 hz (fun a => by rw [congrFun hz a]; simp) (V c (Pipeline.arrRef spec6 1))

theorem iblk_2 (t : Fin cfg6.N) : (iblk6 V c 2 t : S1x128.Idx → EReal) = V c (Pipeline.arrRef spec6 2) := by
  obtain rfl : t = t6_0 := fin_N6 t
  have hz : (fun a => win6_2.index t6_0 a * main_v87.ty.shape.size a) = fun _ => 0 := funext fun a => by fin_cases a <;> decide
  exact Memref.read_access_unit_zero (Elt Ideal) main_v87 hz (fun a => by rw [congrFun hz a]; simp) (V c (Pipeline.arrRef spec6 2))

theorem iblk_3 (t : Fin cfg6.N) : (iblk6 V c 3 t : S128x128.Idx → EReal) = V c (Pipeline.arrRef spec6 3) := by
  obtain rfl : t = t6_0 := fin_N6 t
  have hz : (fun a => win6_3.index t6_0 a * main_arg24.ty.shape.size a) = fun _ => 0 := funext fun a => by fin_cases a <;> decide
  exact Memref.read_access_unit_zero (Elt Ideal) main_arg24 hz (fun a => by rw [congrFun hz a]; simp) (V c (Pipeline.arrRef spec6 3))

theorem iblk_4 (t : Fin cfg6.N) : (iblk6 V c 4 t : S1x128.Idx → EReal) = V c (Pipeline.arrRef spec6 4) := by
  obtain rfl : t = t6_0 := fin_N6 t
  have hz : (fun a => win6_4.index t6_0 a * main_v88.ty.shape.size a) = fun _ => 0 := funext fun a => by fin_cases a <;> decide
  exact Memref.read_access_unit_zero (Elt Ideal) main_v88 hz (fun a => by rw [congrFun hz a]; simp) (V c (Pipeline.arrRef spec6 4))

theorem iblk_5 (t : Fin cfg6.N) : (iblk6 V c 5 t : S128x1.Idx → EReal) = V c (Pipeline.arrRef spec6 5) := by
  obtain rfl : t = t6_0 := fin_N6 t
  have hz : (fun a => win6_5.index t6_0 a * main_arg26.ty.shape.size a) = fun _ => 0 := funext fun a => by fin_cases a <;> decide
  exact Memref.read_access_unit_zero (Elt Ideal) main_arg26 hz (fun a => by rw [congrFun hz a]; simp) (V c (Pipeline.arrRef spec6 5))

theorem iblk_6 (t : Fin cfg6.N) : (iblk6 V c 6 t : S1x1.Idx → EReal) = V c (Pipeline.arrRef spec6 6) := by
  obtain rfl : t = t6_0 := fin_N6 t
  have hz : (fun a => win6_6.index t6_0 a * main_v89.ty.shape.size a) = fun _ => 0 := funext fun a => by fin_cases a <;> decide
  exact Memref.read_access_unit_zero (Elt Ideal) main_v89 hz (fun a => by rw [congrFun hz a]; simp) (V c (Pipeline.arrRef spec6 6))

theorem iblk_7 (t : Fin cfg6.N) : (iblk6 V c 7 t : S128x128.Idx → EReal) = V c (Pipeline.arrRef spec6 7) := by
  obtain rfl : t = t6_0 := fin_N6 t
  have hz : (fun a => win6_7.index t6_0 a * main_arg28.ty.shape.size a) = fun _ => 0 := funext fun a => by fin_cases a <;> decide
  exact Memref.read_access_unit_zero (Elt Ideal) main_arg28 hz (fun a => by rw [congrFun hz a]; simp) (V c (Pipeline.arrRef spec6 7))

theorem iblk_8 (t : Fin cfg6.N) : (iblk6 V c 8 t : S1x128.Idx → EReal) = V c (Pipeline.arrRef spec6 8) := by
  obtain rfl : t = t6_0 := fin_N6 t
  have hz : (fun a => win6_8.index t6_0 a * main_v90.ty.shape.size a) = fun _ => 0 := funext fun a => by fin_cases a <;> decide
  exact Memref.read_access_unit_zero (Elt Ideal) main_v90 hz (fun a => by rw [congrFun hz a]; simp) (V c (Pipeline.arrRef spec6 8))

theorem iblk_9 (t : Fin cfg6.N) : (iblk6 V c 9 t : S128x128.Idx → EReal) = V c (Pipeline.arrRef spec6 9) := by
  obtain rfl : t = t6_0 := fin_N6 t
  have hz : (fun a => win6_9.index t6_0 a * main_arg30.ty.shape.size a) = fun _ => 0 := funext fun a => by fin_cases a <;> decide
  exact Memref.read_access_unit_zero (Elt Ideal) main_arg30 hz (fun a => by rw [congrFun hz a]; simp) (V c (Pipeline.arrRef spec6 9))

theorem iblk_10 (t : Fin cfg6.N) : (iblk6 V c 10 t : S1x128.Idx → EReal) = V c (Pipeline.arrRef spec6 10) := by
  obtain rfl : t = t6_0 := fin_N6 t
  have hz : (fun a => win6_10.index t6_0 a * main_v91.ty.shape.size a) = fun _ => 0 := funext fun a => by fin_cases a <;> decide
  exact Memref.read_access_unit_zero (Elt Ideal) main_v91 hz (fun a => by rw [congrFun hz a]; simp) (V c (Pipeline.arrRef spec6 10))

theorem iblk_11 (t : Fin cfg6.N) : (iblk6 V c 11 t : S128x1.Idx → EReal) = V c (Pipeline.arrRef spec6 11) := by
  obtain rfl : t = t6_0 := fin_N6 t
  have hz : (fun a => win6_11.index t6_0 a * main_arg32.ty.shape.size a) = fun _ => 0 := funext fun a => by fin_cases a <;> decide
  exact Memref.read_access_unit_zero (Elt Ideal) main_arg32 hz (fun a => by rw [congrFun hz a]; simp) (V c (Pipeline.arrRef spec6 11))

theorem iblk_12 (t : Fin cfg6.N) : (iblk6 V c 12 t : S1x1.Idx → EReal) = V c (Pipeline.arrRef spec6 12) := by
  obtain rfl : t = t6_0 := fin_N6 t
  have hz : (fun a => win6_12.index t6_0 a * main_v92.ty.shape.size a) = fun _ => 0 := funext fun a => by fin_cases a <;> decide
  exact Memref.read_access_unit_zero (Elt Ideal) main_v92 hz (fun a => by rw [congrFun hz a]; simp) (V c (Pipeline.arrRef spec6 12))

theorem cover_13 (i : S1024x1.Idx) : ∃ t : Fin cfg6.N, (cfg6.win 13).flush t = true ∧ i ∈ ((cfg6.win 13).blk t).view.set := by
  refine ⟨t6_0, flush6_13 t6_0, ?_⟩
  have hz : (fun a => win6_13.index t6_0 a * main_v93_0.ty.shape.size a) = fun _ => 0 := funext fun a => by fin_cases a <;> decide
  show i ∈ ((View.whole main_v93_0).slice (win6_13.rect t6_0)).set
  rw [View.set_slice_whole]
  exact View.mem_set_unit_zero (S := S1024x1) hz _ i

theorem cover_14 (i : S1024x1.Idx) : ∃ t : Fin cfg6.N, (cfg6.win 14).flush t = true ∧ i ∈ ((cfg6.win 14).blk t).view.set := by
  refine ⟨t6_0, flush6_14 t6_0, ?_⟩
  have hz : (fun a => win6_14.index t6_0 a * main_v93_1.ty.shape.size a) = fun _ => 0 := funext fun a => by fin_cases a <;> decide
  show i ∈ ((View.whole main_v93_1).slice (win6_14.rect t6_0)).set
  rw [View.set_slice_whole]
  exact View.mem_set_unit_zero (S := S1024x1) hz _ i

theorem after_13 (t : Fin cfg6.N) : ((dat6 V c).after 13 t : S1024x1.Idx → EReal)
    = arrCol (fun r => (costW V c).apply (mat (V c (Pipeline.arrRef spec6 0) : S1024x128.Idx → EReal) r)) := by
  rw [after6_13]
  refine extCol fun r => ?_
  refine (out13_apply (iblk6 V c 0 t) (iblk6 V c 1 t) (iblk6 V c 2 t) (iblk6 V c 3 t) (iblk6 V c 4 t) (iblk6 V c 5 t) (iblk6 V c 6 t)
    (iblk6 V c 7 t) (iblk6 V c 8 t) (iblk6 V c 9 t) (iblk6 V c 10 t) (iblk6 V c 11 t) (iblk6 V c 12 t) r).trans ?_
  rw [iblk_0, iblk_1, iblk_2, iblk_3, iblk_4, iblk_5, iblk_6]
  rfl

theorem after_14 (t : Fin cfg6.N) : ((dat6 V c).after 14 t : S1024x1.Idx → EReal)
    = arrCol (fun r => (cardW V c).apply (mat (V c (Pipeline.arrRef spec6 0) : S1024x128.Idx → EReal) r)) := by
  rw [after6_14]
  refine extCol fun r => ?_
  refine (out14_apply (iblk6 V c 0 t) (iblk6 V c 1 t) (iblk6 V c 2 t) (iblk6 V c 3 t) (iblk6 V c 4 t) (iblk6 V c 5 t) (iblk6 V c 6 t)
    (iblk6 V c 7 t) (iblk6 V c 8 t) (iblk6 V c 9 t) (iblk6 V c 10 t) (iblk6 V c 11 t) (iblk6 V c 12 t) r).trans ?_
  rw [iblk_0, iblk_7, iblk_8, iblk_9, iblk_10, iblk_11, iblk_12]
  rfl

theorem flushed_13 (t : Fin cfg6.N) : (dat6 V c).flushed 13 t = ((cfg6.win 13).blk t).view.read (Elt Ideal)
    (arrCol (fun r => (costW V c).apply (mat (V c (Pipeline.arrRef spec6 0) : S1024x128.Idx → EReal) r))) := by
  obtain rfl : t = t6_0 := fin_N6 t
  show (cfg6.win 13).cut (grid6.coords t6_0) ((dat6 V c).after 13 t6_0) = _
  rw [after_13]
  have hz : (fun a => win6_13.index t6_0 a * main_v93_0.ty.shape.size a) = fun _ => 0 := funext fun a => by fin_cases a <;> decide
  exact (Memref.read_access_unit_zero (Elt Ideal) main_v93_0 hz (fun a => by rw [congrFun hz a]; simp) _).symm

theorem flushed_14 (t : Fin cfg6.N) : (dat6 V c).flushed 14 t = ((cfg6.win 14).blk t).view.read (Elt Ideal)
    (arrCol (fun r => (cardW V c).apply (mat (V c (Pipeline.arrRef spec6 0) : S1024x128.Idx → EReal) r))) := by
  obtain rfl : t = t6_0 := fin_N6 t
  show (cfg6.win 14).cut (grid6.coords t6_0) ((dat6 V c).after 14 t6_0) = _
  rw [after_14]
  have hz : (fun a => win6_14.index t6_0 a * main_v93_1.ty.shape.size a) = fun _ => 0 := funext fun a => by fin_cases a <;> decide
  exact (Memref.read_access_unit_zero (Elt Ideal) main_v93_1 hz (fun a => by rw [congrFun hz a]; simp) _).symm

theorem cost_eq : ((dat6 V c).arrAt 13 cfg6.N : S1024x1.Idx → EReal)
    = arrCol (fun r => (costW V c).apply (mat (V c (Pipeline.arrRef spec6 0) : S1024x128.Idx → EReal) r)) := by
  exact (dat6 V c).arrAt_eq_of_cover 13 _ (fun t _ => flushed_13 V c t) cover_13

theorem card_eq : ((dat6 V c).arrAt 14 cfg6.N : S1024x1.Idx → EReal)
    = arrCol (fun r => (cardW V c).apply (mat (V c (Pipeline.arrRef spec6 0) : S1024x128.Idx → EReal) r)) := by
  exact (dat6 V c).arrAt_eq_of_cover 14 _ (fun t _ => flushed_14 V c t) cover_14

end Cert.KernelIdeal.Region6

end
-- ==== Proof.KHead.lean ====
import proofs.«410031_j84061099917532_3_alg».proof.Proof.Gen.KernelIdeal.Frame
import proofs.«410031_j84061099917532_3_alg».proof.Proof.Spec
import proofs.«410031_j84061099917532_3_alg».proof.Proof.SpecPool
import proofs.«410031_j84061099917532_3_alg».proof.Proof.KArgs
import proofs.«410031_j84061099917532_3_alg».proof.Proof.KKeep
import proofs.«410031_j84061099917532_3_alg».proof.Proof.KStable
import proofs.«410031_j84061099917532_3_alg».proof.Proof.KHost6
import proofs.«410031_j84061099917532_3_alg».proof.Proof.R6Out

noncomputable section

open Idealize.ShloMosaic Idealize.ShloMosaic.TcCoe Idealize.SL.Sem
open TreeNN ValueIdx

namespace Cert.KernelIdeal.Chain

open Cert.KernelIdeal Cert.KernelIdeal.Gen

variable (m : (ℓ : Loc nD τ sig) → Buf (Elt Ideal) ℓ) (ρ : Dev nD → PrngReg) (c : Dev nD)

theorem entry_arg (b : Ref sig .tc) (hf : b ∈ Stable.fixed) (ha : b ∈ Stable.args) :
    W13 m ρ c (Proc.devRef .tc b) = W0 m ρ c (Proc.devRef .tc b) :=
  (Stable.W13_fixed m ρ c b hf).trans (Stable.W1_arg m ρ c b ha)

theorem below_arg (b : Ref sig .tc) (hf : b ∈ Stable.fixed) (ha : b ∈ Stable.args) :
    W12 m ρ c (Proc.devRef .tc b) = W0 m ρ c (Proc.devRef .tc b) :=
  (Stable.W12_fixed m ρ c b hf).trans (Stable.W1_arg m ρ c b ha)

theorem cost_W1 : mat (W13 m ρ c (Proc.devRef .tc main_arg22) : S128x128.Idx → EReal)
    = mat (m ((c : Thread nD τ).loc main_arg22) : S128x128.Idx → EReal) := by
  rewrite [entry_arg m ρ c main_arg22 (by decide) (by decide)]
  rfl

theorem cost_W2 : mat (W13 m ρ c (Proc.devRef .tc main_arg24) : S128x128.Idx → EReal)
    = mat (m ((c : Thread nD τ).loc main_arg24) : S128x128.Idx → EReal) := by
  rewrite [entry_arg m ρ c main_arg24 (by decide) (by decide)]
  rfl

theorem cost_W3 : mat (W13 m ρ c (Proc.devRef .tc main_arg26) : S128x1.Idx → EReal)
    = mat (m ((c : Thread nD τ).loc main_arg26) : S128x1.Idx → EReal) := by
  rewrite [entry_arg m ρ c main_arg26 (by decide) (by decide)]
  rfl

theorem cost_b1 : row (W13 m ρ c (Proc.devRef .tc main_v87) : S1x128.Idx → EReal)
    = vec (m ((c : Thread nD τ).loc main_arg23) : S128.Idx → EReal) := by
  funext j
  show (W13 m ρ c (Proc.devRef .tc main_v87) : S1x128.Idx → EReal) (ix2 0 j)
    = (m ((c : Thread nD τ).loc main_arg23) : S128.Idx → EReal) (ix1 j)
  rewrite [Host6.v87_apply m ρ c j, below_arg m ρ c main_arg23 (by decide) (by decide)]
  rfl

theorem cost_b2 : row (W13 m ρ c (Proc.devRef .tc main_v88) : S1x128.Idx → EReal)
    = vec (m ((c : Thread nD τ).loc main_arg25) : S128.Idx → EReal) := by
  funext j
  show (W13 m ρ c (Proc.devRef .tc main_v88) : S1x128.Idx → EReal) (ix2 0 j)
    = (m ((c : Thread nD τ).loc main_arg25) : S128.Idx → EReal) (ix1 j)
  rewrite [Host6.v88_apply m ρ c j, below_arg m ρ c main_arg25 (by decide) (by decide)]
  rfl

theorem cost_b3 : row (W13 m ρ c (Proc.devRef .tc main_v89) : S1x1.Idx → EReal)
    = vec (m ((c : Thread nD τ).loc main_arg27) : S1.Idx → EReal) := by
  funext j
  obtain rfl : j = 0 := Subsingleton.elim _ _
  show (W13 m ρ c (Proc.devRef .tc main_v89) : S1x1.Idx → EReal) (ix2 0 0)
    = (m ((c : Thread nD τ).loc main_arg27) : S1.Idx → EReal) (ix1 0)
  rewrite [Host6.v89_apply m ρ c, below_arg m ρ c main_arg27 (by decide) (by decide)]
  rfl

theorem costW_eq : Region6.costW (V13 m ρ) c = costWm m c := by
  unfold Region6.costW costWm HeadW.ofTiles HeadW.ofArrays
  rewrite [HeadW.mk.injEq]
  exact ⟨cost_W1 m ρ c, cost_b1 m ρ c, cost_W2 m ρ c, cost_b2 m ρ c, cost_W3 m ρ c, cost_b3 m ρ c⟩

theorem card_W1 : mat (W13 m ρ c (Proc.devRef .tc main_arg28) : S128x128.Idx → EReal)
    = mat (m ((c : Thread nD τ).loc main_arg28) : S128x128.Idx → EReal) := by
  rewrite [entry_arg m ρ c main_arg28 (by decide) (by decide)]
  rfl

theorem card_W2 : mat (W13 m ρ c (Proc.devRef .tc main_arg30) : S128x128.Idx → EReal)
    = mat (m ((c : Thread nD τ).loc main_arg30) : S128x128.Idx → EReal) := by
  rewrite [entry_arg m ρ c main_arg30 (by decide) (by decide)]
  rfl

theorem card_W3 : mat (W13 m ρ c (Proc.devRef .tc main_arg32) : S128x1.Idx → EReal)
    = mat (m ((c : Thread nD τ).loc main_arg32) : S128x1.Idx → EReal) := by
  rewrite [entry_arg m ρ c main_arg32 (by decide) (by decide)]
  rfl

theorem card_b1 : row (W13 m ρ c (Proc.devRef .tc main_v90) : S1x128.Idx → EReal)
    = vec (m ((c : Thread nD τ).loc main_arg29) : S128.Idx → EReal) := by
  funext j
  show (W13 m ρ c (Proc.devRef .tc main_v90) : S1x128.Idx → EReal) (ix2 0 j)
    = (m ((c : Thread nD τ).loc main_arg29) : S128.Idx → EReal) (ix1 j)
  rewrite [Host6.v90_apply m ρ c j, below_arg m ρ c main_arg29 (by decide) (by decide)]
  rfl

theorem card_b2 : row (W13 m ρ c (Proc.devRef .tc main_v91) : S1x128.Idx → EReal)
    = vec (m ((c : Thread nD τ).loc main_arg31) : S128.Idx → EReal) := by
  funext j
  show (W13 m ρ c (Proc.devRef .tc main_v91) : S1x128.Idx → EReal) (ix2 0 j)
    = (m ((c : Thread nD τ).loc main_arg31) : S128.Idx → EReal) (ix1 j)
  rewrite [Host6.v91_apply m ρ c j, below_arg m ρ c main_arg31 (by decide) (by decide)]
  rfl

theorem card_b3 : row (W13 m ρ c (Proc.devRef .tc main_v92) : S1x1.Idx → EReal)
    = vec (m ((c : Thread nD τ).loc main_arg33) : S1.Idx → EReal) := by
  funext j
  obtain rfl : j = 0 := Subsingleton.elim _ _
  show (W13 m ρ c (Proc.devRef .tc main_v92) : S1x1.Idx → EReal) (ix2 0 0)
    = (m ((c : Thread nD τ).loc main_arg33) : S1.Idx → EReal) (ix1 0)
  rewrite [Host6.v92_apply m ρ c, below_arg m ρ c main_arg33 (by decide) (by decide)]
  rfl

theorem cardW_eq : Region6.cardW (V13 m ρ) c = cardWm m c := by
  unfold Region6.cardW cardWm HeadW.ofTiles HeadW.ofArrays
  rewrite [HeadW.mk.injEq]
  exact ⟨card_W1 m ρ c, card_b1 m ρ c, card_W2 m ρ c, card_b2 m ρ c, card_W3 m ρ c, card_b3 m ρ c⟩

theorem roots_found
    (h : (W12 m ρ c (Proc.devRef .tc main_v86_0) : S1024x128.Idx → EReal) = arr2 (level0 (Em m c) (lmm m c) (rmm m c) (pm m c)).rep) :
    mat (W13 m ρ c (Proc.devRef .tc main_v86_0) : S1024x128.Idx → EReal) = roots m c := by
  rewrite [Keep.host6 m ρ c main_v86_0 (by decide), h]
  rfl

theorem results_eq
    (hbelow : (W12 m ρ c (Proc.devRef .tc main_v86_0) : S1024x128.Idx → EReal) = arr2 (level0 (Em m c) (lmm m c) (rmm m c) (pm m c)).rep
      ∧ (W12 m ρ c (Proc.devRef .tc main_v86_1) : S1024x128.Idx → EReal) = arr2 (level0 (Em m c) (lmm m c) (rmm m c) (pm m c)).lrep
      ∧ (W12 m ρ c (Proc.devRef .tc main_v86_2) : S1024x128.Idx → EReal) = arr2 (level0 (Em m c) (lmm m c) (rmm m c) (pm m c)).rrep) :
    (W14 m ρ c (Proc.devRef .tc main_v93_0) : S1024x1.Idx → EReal) = arrCol (fun r => (costWm m c).apply (roots m c r))
      ∧ (W14 m ρ c (Proc.devRef .tc main_v93_1) : S1024x1.Idx → EReal) = arrCol (fun r => (cardWm m c).apply (roots m c r)) := by
  have hroots : mat (V13 m ρ c (Pipeline.arrRef spec6 0) : S1024x128.Idx → EReal) = roots m c :=
    roots_found m ρ c hbelow.1
  constructor
  · have h := (W14_arr m ρ c 13).trans (Region6.cost_eq (V13 m ρ) c)
    rewrite [hroots, costW_eq m ρ c] at h
    exact h
  · have h := (W14_arr m ρ c 14).trans (Region6.card_eq (V13 m ρ) c)
    rewrite [hroots, cardW_eq m ρ c] at h
    exact h

end Cert.KernelIdeal.Chain

end
-- ==== Proof.KResults.lean ====
import proofs.«410031_j84061099917532_3_alg».proof.Proof.KLevel5
import proofs.«410031_j84061099917532_3_alg».proof.Proof.KLevel4
import proofs.«410031_j84061099917532_3_alg».proof.Proof.KLevel3
import proofs.«410031_j84061099917532_3_alg».proof.Proof.KLevel2
import proofs.«410031_j84061099917532_3_alg».proof.Proof.KLevel1
import proofs.«410031_j84061099917532_3_alg».proof.Proof.KLevel0
import proofs.«410031_j84061099917532_3_alg».proof.Proof.KHead

noncomputable section

open Idealize.ShloMosaic Idealize.ShloMosaic.TcCoe Idealize.SL.Sem
open TreeNN ValueIdx

namespace Cert.KernelIdeal.Chain

open Cert.KernelIdeal Cert.KernelIdeal.Gen

theorem results (m : (ℓ : Loc nD τ sig) → Buf (Elt Ideal) ℓ) (ρ : Dev nD → PrngReg) (c : Dev nD) :
    (W14 m ρ c (Proc.devRef .tc main_v93_0) : S1024x1.Idx → EReal) = arrCol (fun r => (costWm m c).apply (roots m c r))
      ∧ (W14 m ρ c (Proc.devRef .tc main_v93_1) : S1024x1.Idx → EReal) = arrCol (fun r => (cardWm m c).apply (roots m c r)) :=
  results_eq m ρ c (level0_eq m ρ c (level1_eq m ρ c (level2_eq m ρ c (level3_eq m ρ c (level4_eq m ρ c (level5_eq m ρ c))))))

end Cert.KernelIdeal.Chain

end
-- ==== Proof.RefBase.lean ====
import proofs.«410031_j84061099917532_3_alg».proof.Proof.RefStages
import proofs.«410031_j84061099917532_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open TreeNN ValueIdx

end
-- ==== Proof.RefEmb.lean ====
import proofs.«410031_j84061099917532_3_alg».proof.Proof.RefBase
import Idealize.ShloMosaic.PureOps.Reduce

noncomputable section

namespace Cert.ReferenceIdeal.Emb

open Idealize.ShloMosaic Cert.ReferenceIdeal Cert.ReferenceIdeal.Stages
open TreeNN ValueIdx

theorem top_f32 : Ideal.ofBits .f32 0x7F800000#32 = ⊤ := by simp [Ideal.ofBits, Ideal.ieee]

theorem fold_min_fin4 (g : Fin 4 → EReal) :
    (Finset.univ : Finset (Fin 4)).fold min ⊤ g = min (min (min (g 0) (g 1)) (g 2)) (g 3) := by
  simp only [Fin.univ_succ, Finset.fold_cons, Finset.fold_map, Finset.univ_unique, Finset.fold_singleton]
  show min (g 0) (min (g 1) (min (g 2) (min (g 3) ⊤))) = _
  rw [min_top_right]
  ac_rfl

theorem lift_ix3 (h : (⟨3, ![64512, 4, 128]⟩ : Shape).Reduces [1] ⟨2, ![64512, 128]⟩) (i : Fin 64512) (j : Fin 128)
    (k : Fin 4) : h.lift (ix2 i j) k = ix3 i k j :=
  funext fun a => Fin.ext (by match a with | ⟨0, _⟩ => rfl | ⟨1, _⟩ => rfl | ⟨2, _⟩ => rfl)

theorem minReduce_apply (y : FVec Ideal ⟨3, ![64512, 4, 128]⟩ .f32) (init : FVec Ideal ⟨0, ![]⟩ .f32)
    (hinit : ∀ q, init q = ⊤)
    (h' : (⟨3, ![64512, 4, 128]⟩ : Shape).ReducesTo [1] ⟨2, ![64512, 128]⟩) (hu : 0 < (⟨0, ![]⟩ : Shape).numel)
    (i : Fin 64512) (j : Fin 128) :
    Host.reduce FloatOps.minimumf y init h' hu (ix2 i j)
      = min (min (min (y (ix3 i 0 j)) (y (ix3 i 1 j))) (y (ix3 i 2 j))) (y (ix3 i 3 j)) := by
  have h : (⟨3, ![64512, 4, 128]⟩ : Shape).Reduces [1] ⟨2, ![64512, 128]⟩ := by decide
  rw [Host.reduce_eq_fold_single FloatOps.minimumf y init h' h hu, hinit]
  have hf : (y ∘ h.lift (ix2 i j)) = fun k : Fin 4 => y (ix3 i k j) := funext fun k => congrArg y (lift_ix3 h i j k)
  rw [hf]
  exact fold_min_fin4 fun k => y (ix3 i k j)

theorem lidx_v0 (i : Fin 64512) (j : Fin 128) (k : Fin 32) : lidx_main_v0 (ix2 i j) k = ix2 i k :=
  funext fun a => Fin.ext (by match a with | ⟨0, _⟩ => rfl | ⟨1, _⟩ => rfl)
theorem ridx_v0 (i : Fin 64512) (j : Fin 128) (k : Fin 32) : ridx_main_v0 (ix2 i j) k = ix2 k j :=
  funext fun a => Fin.ext (by match a with | ⟨0, _⟩ => rfl | ⟨1, _⟩ => rfl)
theorem idx_v2 (i : Fin 64512) (j : Fin 128) : idx_main_v1 (idx_main_v2 (ix2 i j)) = ix1 j :=
  funext fun a => Fin.ext (by match a with | ⟨0, _⟩ => rfl)

theorem lidx_v4 (i : Fin 64512) (j : Fin 128) (k : Fin 32) : lidx_main_v4 (ix2 i j) k = ix2 i k :=
  funext fun a => Fin.ext (by match a with | ⟨0, _⟩ => rfl | ⟨1, _⟩ => rfl)
theorem ridx_v4 (i : Fin 64512) (j : Fin 128) (k : Fin 32) : ridx_main_v4 (ix2 i j) k = ix2 k j :=
  funext fun a => Fin.ext (by match a with | ⟨0, _⟩ => rfl | ⟨1, _⟩ => rfl)
theorem idx_v6 (i : Fin 64512) (j : Fin 128) : idx_main_v5 (idx_main_v6 (ix2 i j)) = ix1 j :=
  funext fun a => Fin.ext (by match a with | ⟨0, _⟩ => rfl)

theorem lidx_v8 (i : Fin 64512) (j : Fin 128) (k : Fin 1000) : lidx_main_v8 (ix2 i j) k = ix2 i k :=
  funext fun a => Fin.ext (by match a with | ⟨0, _⟩ => rfl | ⟨1, _⟩ => rfl)
theorem ridx_v8 (i : Fin 64512) (j : Fin 128) (k : Fin 1000) : ridx_main_v8 (ix2 i j) k = ix2 k j :=
  funext fun a => Fin.ext (by match a with | ⟨0, _⟩ => rfl | ⟨1, _⟩ => rfl)
theorem idx_v10 (i : Fin 64512) (j : Fin 128) : idx_main_v9 (idx_main_v10 (ix2 i j)) = ix1 j :=
  funext fun a => Fin.ext (by match a with | ⟨0, _⟩ => rfl)
theorem idx_v13 (i : Fin 64512) (j : Fin 128) : idx_main_v12 (idx_main_v13 (ix2 i j)) = ix1 i :=
  funext fun a => Fin.ext (by match a with | ⟨0, _⟩ => rfl)

theorem lidx_v15 (i : Fin 64512) (q : Fin 4) (j : Fin 128) (k : Fin 64) : lidx_main_v15 (ix3 i q j) k = ix3 i q k :=
  funext fun a => Fin.ext (by match a with | ⟨0, _⟩ => rfl | ⟨1, _⟩ => rfl | ⟨2, _⟩ => rfl)
theorem ridx_v15 (i : Fin 64512) (q : Fin 4) (j : Fin 128) (k : Fin 64) : ridx_main_v15 (ix3 i q j) k = ix2 k j :=
  funext fun a => Fin.ext (by match a with | ⟨0, _⟩ => rfl | ⟨1, _⟩ => rfl)
theorem idx_v17 (i : Fin 64512) (q : Fin 4) (j : Fin 128) : idx_main_v16 (idx_main_v17 (ix3 i q j)) = ix1 j :=
  funext fun a => Fin.ext (by match a with | ⟨0, _⟩ => rfl)

theorem lidx_v20 (i : Fin 64512) (q : Fin 4) (j : Fin 128) (k : Fin 64) : lidx_main_v20 (ix3 i q j) k = ix3 i q k :=
  funext fun a => Fin.ext (by match a with | ⟨0, _⟩ => rfl | ⟨1, _⟩ => rfl | ⟨2, _⟩ => rfl)
theorem ridx_v20 (i : Fin 64512) (q : Fin 4) (j : Fin 128) (k : Fin 64) : ridx_main_v20 (ix3 i q j) k = ix2 k j :=
  funext fun a => Fin.ext (by match a with | ⟨0, _⟩ => rfl | ⟨1, _⟩ => rfl)
theorem idx_v22 (i : Fin 64512) (q : Fin 4) (j : Fin 128) : idx_main_v21 (idx_main_v22 (ix3 i q j)) = ix1 j :=
  funext fun a => Fin.ext (by match a with | ⟨0, _⟩ => rfl)

section
variable (x0 : (⟨S64512x32, .f32⟩ : BufTy).Contents (Elt Ideal)) (x1 : (⟨S64512x32, .f32⟩ : BufTy).Contents (Elt Ideal))
  (x2 : (⟨S64512x1000, .f32⟩ : BufTy).Contents (Elt Ideal)) (x3 : (⟨S64512x4x64, .f32⟩ : BufTy).Contents (Elt Ideal))
  (x4 : (⟨S64512x4x64, .f32⟩ : BufTy).Contents (Elt Ideal)) (x5 : (⟨S64512, .f32⟩ : BufTy).Contents (Elt Ideal))
  (x6 : (⟨S64512, .i32⟩ : BufTy).Contents (Elt Ideal)) (x7 : (⟨S64512, .i32⟩ : BufTy).Contents (Elt Ideal))
  (x8 : (⟨S32x128, .f32⟩ : BufTy).Contents (Elt Ideal)) (x9 : (⟨S128, .f32⟩ : BufTy).Contents (Elt Ideal))
  (x10 : (⟨S32x128, .f32⟩ : BufTy).Contents (Elt Ideal)) (x11 : (⟨S128, .f32⟩ : BufTy).Contents (Elt Ideal))
  (x12 : (⟨S1000x128, .f32⟩ : BufTy).Contents (Elt Ideal)) (x13 : (⟨S128, .f32⟩ : BufTy).Contents (Elt Ideal))
  (x14 : (⟨S64x128, .f32⟩ : BufTy).Contents (Elt Ideal)) (x15 : (⟨S128, .f32⟩ : BufTy).Contents (Elt Ideal))

theorem op_apply (i : Fin 64512) (j : Fin 128) :
    val_main_v3 (F := Ideal) x0 x8 x9 (ix2 i j)
      = embOfArrays x0 x1 x2 x3 x4 x5 x8 x9 x10 x11 x12 x13 x14 x15 i 0 j := by
  rw [val_main_v3_apply, val_main_v0_apply, val_main_v2_apply, val_main_v1_apply]
  simp only [lidx_v0, ridx_v0, idx_v2, Ideal.addf_def]
  rfl

theorem feat_apply (i : Fin 64512) (j : Fin 128) :
    val_main_v7 (F := Ideal) x1 x10 x11 (ix2 i j)
      = embOfArrays x0 x1 x2 x3 x4 x5 x8 x9 x10 x11 x12 x13 x14 x15 i 1 j := by
  rw [val_main_v7_apply, val_main_v4_apply, val_main_v6_apply, val_main_v5_apply]
  simp only [lidx_v4, ridx_v4, idx_v6, Ideal.addf_def]
  rfl

theorem pred1_apply (i : Fin 64512) (q : Fin 4) (j : Fin 128) :
    val_main_v18 (F := Ideal) x3 x14 x15 (ix3 i q j) = dense (ten3 x3 i q) (mat x14) (vec x15) j := by
  rw [val_main_v18_apply, val_main_v15_apply, val_main_v17_apply, val_main_v16_apply]
  simp only [lidx_v15, ridx_v15, idx_v17, Ideal.addf_def]
  rfl

theorem pred2_apply (i : Fin 64512) (q : Fin 4) (j : Fin 128) :
    val_main_v23 (F := Ideal) x4 x14 x15 (ix3 i q j) = dense (ten3 x4 i q) (mat x14) (vec x15) j := by
  rw [val_main_v23_apply, val_main_v20_apply, val_main_v22_apply, val_main_v21_apply]
  simp only [lidx_v20, ridx_v20, idx_v22, Ideal.addf_def]
  rfl

theorem c1_apply (i : Fin 64512) (j : Fin 128) :
    val_main_v19 (F := Ideal) x3 x14 x15 (ix2 i j)
      = embOfArrays x0 x1 x2 x3 x4 x5 x8 x9 x10 x11 x12 x13 x14 x15 i 2 j := by
  unfold val_main_v19
  rw [minReduce_apply (val_main_v18 (F := Ideal) x3 x14 x15) (val_main_cst (F := Ideal)) (fun _ => top_f32),
    pred1_apply, pred1_apply, pred1_apply, pred1_apply]
  rfl

theorem c2_apply (i : Fin 64512) (j : Fin 128) :
    val_main_v24 (F := Ideal) x4 x14 x15 (ix2 i j)
      = embOfArrays x0 x1 x2 x3 x4 x5 x8 x9 x10 x11 x12 x13 x14 x15 i 3 j := by
  unfold val_main_v24
  rw [minReduce_apply (val_main_v23 (F := Ideal) x4 x14 x15) (val_main_cst_0 (F := Ideal)) (fun _ => top_f32),
    pred2_apply, pred2_apply, pred2_apply, pred2_apply]
  rfl

theorem bm_apply (i : Fin 64512) (j : Fin 128) :
    val_main_v14 (F := Ideal) x2 x5 x12 x13 (ix2 i j)
      = embOfArrays x0 x1 x2 x3 x4 x5 x8 x9 x10 x11 x12 x13 x14 x15 i 4 j := by
  rw [val_main_v14_apply, val_main_v11_apply, val_main_v8_apply, val_main_v10_apply, val_main_v9_apply,
    val_main_v13_apply, val_main_v12_apply]
  simp only [lidx_v8, ridx_v8, idx_v10, idx_v13, Ideal.addf_def, Ideal.mulf_def]
  rfl

theorem lm_apply (i : Fin 64512) : val_main_v25 (F := Ideal) x6 (ix1 i) = maskOfArray x6 i := rfl

theorem rm_apply (i : Fin 64512) : val_main_v26 (F := Ideal) x7 (ix1 i) = maskOfArray x7 i := rfl

end

end Cert.ReferenceIdeal.Emb

end
-- ==== Proof.RefL5.lean ====
import proofs.«410031_j84061099917532_3_alg».proof.Proof.RefBase
import proofs.«410031_j84061099917532_3_alg».proof.Proof.RefEmb

noncomputable section

namespace Cert.ReferenceIdeal.L5

open Idealize.ShloMosaic Cert.ReferenceIdeal Cert.ReferenceIdeal.Stages
open TreeNN ValueIdx

theorem concat11_read {α : Type} (y0 y1 y2 y3 y4 y5 y6 y7 y8 y9 y10 : S32768x128.Idx → α)
    (h : Shape.Concatenates [S32768x128, S32768x128, S32768x128, S32768x128, S32768x128, S32768x128, S32768x128, S32768x128, S32768x128, S32768x128, S32768x128] S32768x1408 1)
    (i : Fin 32768) (k : Fin 1408) (pc : Fin 11 → Fin 128 → α)
    (h0 : ∀ j : Fin 128, y0 (ix2 i j) = pc 0 j)
    (h1 : ∀ j : Fin 128, y1 (ix2 i j) = pc 1 j)
    (h2 : ∀ j : Fin 128, y2 (ix2 i j) = pc 2 j)
    (h3 : ∀ j : Fin 128, y3 (ix2 i j) = pc 3 j)
    (h4 : ∀ j : Fin 128, y4 (ix2 i j) = pc 4 j)
    (h5 : ∀ j : Fin 128, y5 (ix2 i j) = pc 5 j)
    (h6 : ∀ j : Fin 128, y6 (ix2 i j) = pc 6 j)
    (h7 : ∀ j : Fin 128, y7 (ix2 i j) = pc 7 j)
    (h8 : ∀ j : Fin 128, y8 (ix2 i j) = pc 8 j)
    (h9 : ∀ j : Fin 128, y9 (ix2 i j) = pc 9 j)
    (h10 : ∀ j : Fin 128, y10 (ix2 i j) = pc 10 j) :
    concatenate S32768x1408 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k)
      = pc ⟨k.val / 128, by omega⟩ ⟨k.val % 128, by omega⟩ := by
  have hk := k.isLt
  have hi : ∀ b : Fin S32768x128.rank, b.cast (rfl : S32768x128.rank = S32768x1408.rank) ≠ 1 →
      ((ix2 i (⟨k.val % 128, Nat.mod_lt _ (by decide)⟩ : Fin 128) : S32768x128.Idx) b).val
        = ((ix2 i k : S32768x1408.Idx) (b.cast (rfl : S32768x128.rank = S32768x1408.rank))).val := by
    intro b hb
    match b, hb with
    | ⟨0, _⟩, _ => rfl
    | ⟨1, _⟩, hb => exact absurd rfl hb
  obtain ⟨q, hq⟩ : ∃ q : Fin 11, (⟨k.val / 128, by omega⟩ : Fin 11) = q := ⟨_, rfl⟩
  have hqv : k.val / 128 = q.val := congrArg Fin.val hq
  rw [hq]
  match q, hqv with
  | ⟨0, _⟩, hqv =>
    have hqv' : k.val / 128 = 0 := hqv
    exact (concatenate_apply_piece 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k) 0 (by show (0 : Nat) < 11; decide) S32768x128 y0 rfl rfl (128 * 0) (by simp)
      (ix2 i ⟨k.val % 128, Nat.mod_lt _ (by decide)⟩) hi (by show 128 * 0 + k.val % 128 = k.val; omega)).trans (h0 _)
  | ⟨1, _⟩, hqv =>
    have hqv' : k.val / 128 = 1 := hqv
    exact (concatenate_apply_piece 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k) 1 (by show (1 : Nat) < 11; decide) S32768x128 y1 rfl rfl (128 * 1) (by simp)
      (ix2 i ⟨k.val % 128, Nat.mod_lt _ (by decide)⟩) hi (by show 128 * 1 + k.val % 128 = k.val; omega)).trans (h1 _)
  | ⟨2, _⟩, hqv =>
    have hqv' : k.val / 128 = 2 := hqv
    exact (concatenate_apply_piece 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k) 2 (by show (2 : Nat) < 11; decide) S32768x128 y2 rfl rfl (128 * 2) (by simp)
      (ix2 i ⟨k.val % 128, Nat.mod_lt _ (by decide)⟩) hi (by show 128 * 2 + k.val % 128 = k.val; omega)).trans (h2 _)
  | ⟨3, _⟩, hqv =>
    have hqv' : k.val / 128 = 3 := hqv
    exact (concatenate_apply_piece 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k) 3 (by show (3 : Nat) < 11; decide) S32768x128 y3 rfl rfl (128 * 3) (by simp)
      (ix2 i ⟨k.val % 128, Nat.mod_lt _ (by decide)⟩) hi (by show 128 * 3 + k.val % 128 = k.val; omega)).trans (h3 _)
  | ⟨4, _⟩, hqv =>
    have hqv' : k.val / 128 = 4 := hqv
    exact (concatenate_apply_piece 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k) 4 (by show (4 : Nat) < 11; decide) S32768x128 y4 rfl rfl (128 * 4) (by simp)
      (ix2 i ⟨k.val % 128, Nat.mod_lt _ (by decide)⟩) hi (by show 128 * 4 + k.val % 128 = k.val; omega)).trans (h4 _)
  | ⟨5, _⟩, hqv =>
    have hqv' : k.val / 128 = 5 := hqv
    exact (concatenate_apply_piece 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k) 5 (by show (5 : Nat) < 11; decide) S32768x128 y5 rfl rfl (128 * 5) (by simp)
      (ix2 i ⟨k.val % 128, Nat.mod_lt _ (by decide)⟩) hi (by show 128 * 5 + k.val % 128 = k.val; omega)).trans (h5 _)
  | ⟨6, _⟩, hqv =>
    have hqv' : k.val / 128 = 6 := hqv
    exact (concatenate_apply_piece 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k) 6 (by show (6 : Nat) < 11; decide) S32768x128 y6 rfl rfl (128 * 6) (by simp)
      (ix2 i ⟨k.val % 128, Nat.mod_lt _ (by decide)⟩) hi (by show 128 * 6 + k.val % 128 = k.val; omega)).trans (h6 _)
  | ⟨7, _⟩, hqv =>
    have hqv' : k.val / 128 = 7 := hqv
    exact (concatenate_apply_piece 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k) 7 (by show (7 : Nat) < 11; decide) S32768x128 y7 rfl rfl (128 * 7) (by simp)
      (ix2 i ⟨k.val % 128, Nat.mod_lt _ (by decide)⟩) hi (by show 128 * 7 + k.val % 128 = k.val; omega)).trans (h7 _)
  | ⟨8, _⟩, hqv =>
    have hqv' : k.val / 128 = 8 := hqv
    exact (concatenate_apply_piece 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k) 8 (by show (8 : Nat) < 11; decide) S32768x128 y8 rfl rfl (128 * 8) (by simp)
      (ix2 i ⟨k.val % 128, Nat.mod_lt _ (by decide)⟩) hi (by show 128 * 8 + k.val % 128 = k.val; omega)).trans (h8 _)
  | ⟨9, _⟩, hqv =>
    have hqv' : k.val / 128 = 9 := hqv
    exact (concatenate_apply_piece 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k) 9 (by show (9 : Nat) < 11; decide) S32768x128 y9 rfl rfl (128 * 9) (by simp)
      (ix2 i ⟨k.val % 128, Nat.mod_lt _ (by decide)⟩) hi (by show 128 * 9 + k.val % 128 = k.val; omega)).trans (h9 _)
  | ⟨10, _⟩, hqv =>
    have hqv' : k.val / 128 = 10 := hqv
    exact (concatenate_apply_piece 1 [⟨S32768x128, y0⟩, ⟨S32768x128, y1⟩, ⟨S32768x128, y2⟩, ⟨S32768x128, y3⟩, ⟨S32768x128, y4⟩, ⟨S32768x128, y5⟩, ⟨S32768x128, y6⟩, ⟨S32768x128, y7⟩, ⟨S32768x128, y8⟩, ⟨S32768x128, y9⟩, ⟨S32768x128, y10⟩] h (ix2 i k) 10 (by show (10 : Nat) < 11; decide) S32768x128 y10 rfl rfl (128 * 10) (by simp)
      (ix2 i ⟨k.val % 128, Nat.mod_lt _ (by decide)⟩) hi (by show 128 * 10 + k.val % 128 = k.val; omega)).trans (h10 _)

theorem pieces_lo (e : Fin 5 → Fin 128 → EReal) (ch : Fin 6 → Fin 128 → EReal) (j : Fin 128) :
    pieces e ch 0 j = e 0 j ∧ pieces e ch 1 j = e 1 j ∧ pieces e ch 2 j = e 2 j ∧ pieces e ch 3 j = e 3 j ∧
      pieces e ch 4 j = e 4 j :=
  ⟨rfl, rfl, rfl, rfl, rfl⟩
theorem pieces_hi (e : Fin 5 → Fin 128 → EReal) (ch : Fin 6 → Fin 128 → EReal) (j : Fin 128) :
    pieces e ch 5 j = ch 0 j ∧ pieces e ch 6 j = ch 1 j ∧ pieces e ch 7 j = ch 2 j ∧ pieces e ch 8 j = ch 3 j ∧
      pieces e ch 9 j = ch 4 j ∧ pieces e ch 10 j = ch 5 j :=
  ⟨rfl, rfl, rfl, rfl, rfl, rfl⟩

theorem slice28 (i : Fin 32768) (j : Fin 128) : idx_main_v28 (ix2 i j) = ix2 (⟨31744 + i.val, by omega⟩ : Fin 64512) j :=
  funext fun a => Fin.ext (by match a with | ⟨0, _⟩ => rfl | ⟨1, _⟩ => rfl)
theorem slice29 (i : Fin 32768) (j : Fin 128) : idx_main_v29 (ix2 i j) = ix2 (⟨31744 + i.val, by omega⟩ : Fin 64512) j :=
  funext fun a => Fin.ext (by match a with | ⟨0, _⟩ => rfl | ⟨1, _⟩ => rfl)
theorem slice30 (i : Fin 32768) (j : Fin 128) : idx_main_v30 (ix2 i j) = ix2 (⟨31744 + i.val, by omega⟩ : Fin 64512) j :=
  funext fun a => Fin.ext (by match a with | ⟨0, _⟩ => rfl | ⟨1, _⟩ => rfl)
theorem slice31 (i : Fin 32768) (j : Fin 128) : idx_main_v31 (ix2 i j) = ix2 (⟨31744 + i.val, by omega⟩ : Fin 64512) j :=
  funext fun a => Fin.ext (by match a with | ⟨0, _⟩ => rfl | ⟨1, _⟩ => rfl)
theorem slice32 (i : Fin 32768) (j : Fin 128) : idx_main_v32 (ix2 i j) = ix2 (⟨31744 + i.val, by omega⟩ : Fin 64512) j :=
  funext fun a => Fin.ext (by match a with | ⟨0, _⟩ => rfl | ⟨1, _⟩ => rfl)

theorem lidx34 (i : Fin 32768) (j : Fin 512) (k : Fin 1408) : lidx_main_v34 (ix2 i j) k = ix2 i k :=
  funext fun a => Fin.ext (by match a with | ⟨0, _⟩ => rfl | ⟨1, _⟩ => rfl)
theorem ridx34 (i : Fin 32768) (j : Fin 512) (k : Fin 1408) : ridx_main_v34 (ix2 i j) k = ix2 k j :=
  funext fun a => Fin.ext (by match a with | ⟨0, _⟩ => rfl | ⟨1, _⟩ => rfl)
theorem bidx36 (i : Fin 32768) (j : Fin 512) : idx_main_v35 (idx_main_v36 (ix2 i j)) = ix1 j :=
  funext fun a => Fin.ext (by match a with | ⟨0, _⟩ => rfl)
theorem lidx39 (i : Fin 32768) (j : Fin 256) (k : Fin 512) : lidx_main_v39 (ix2 i j) k = ix2 i k :=
  funext fun a => Fin.ext (by match a with | ⟨0, _⟩ => rfl | ⟨1, _⟩ => rfl)
theorem ridx39 (i : Fin 32768) (j : Fin 256) (k : Fin 512) : ridx_main_v39 (ix2 i j) k = ix2 k j :=
  funext fun a => Fin.ext (by match a with | ⟨0, _⟩ => rfl | ⟨1, _⟩ => rfl)
theorem bidx41 (i : Fin 32768) (j : Fin 256) : idx_main_v40 (idx_main_v41 (ix2 i j)) = ix1 j :=
  funext fun a => Fin.ext (by match a with | ⟨0, _⟩ => rfl)
theorem lidx44 (i : Fin 32768) (j : Fin 128) (k : Fin 256) : lidx_main_v44 (ix2 i j) k = ix2 i k :=
  funext fun a => Fin.ext (by match a with | ⟨0, _⟩ => rfl | ⟨1, _⟩ => rfl)
theorem ridx44 (i : Fin 32768) (j : Fin 128) (k : Fin 256) : ridx_main_v44 (ix2 i j) k = ix2 k j :=
  funext fun a => Fin.ext (by match a with | ⟨0, _⟩ => rfl | ⟨1, _⟩ => rfl)
theorem bidx46 (i : Fin 32768) (j : Fin 128) : idx_main_v45 (idx_main_v46 (ix2 i j)) = ix1 j :=
  funext fun a => Fin.ext (by match a with | ⟨0, _⟩ => rfl)

section
variable (x0 x1 : (⟨S64512x32, .f32⟩ : BufTy).Contents (Elt Ideal)) (x2 : (⟨S64512x1000, .f32⟩ : BufTy).Contents (Elt Ideal))
  (x3 x4 : (⟨S64512x4x64, .f32⟩ : BufTy).Contents (Elt Ideal)) (x5 : (⟨S64512, .f32⟩ : BufTy).Contents (Elt Ideal))
  (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal))
  (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal))
  (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal))
  (x20 : (⟨S256x128, .f32⟩ : BufTy).Contents (Elt Ideal)) (x21 : (⟨S128, .f32⟩ : BufTy).Contents (Elt Ideal))

local notation "E" => embOfArrays x0 x1 x2 x3 x4 x5 x8 x9 x10 x11 x12 x13 x14 x15
local notation "P" => MLP3.ofArrays x16 x17 x18 x19 x20 x21

theorem zeros_apply (i : Fin 32768) (j : Fin 128) : val_main_v27 (F := Ideal) (ix2 i j) = 0 := by
  rw [val_main_v27_apply, val_main_cst_1_apply]
  exact Ideal.ofBits_zero_f32

theorem piece0_apply (i : Fin 32768) (j : Fin 128) :
    val_main_v28 (F := Ideal) x0 x8 x9 (ix2 i j) = E (⟨31744 + i.val, by omega⟩ : Fin 64512) 0 j := by
  rw [val_main_v28_apply, slice28]
  exact Emb.op_apply x0 x1 x2 x3 x4 x5 x8 x9 x10 x11 x12 x13 x14 x15 _ j

theorem piece1_apply (i : Fin 32768) (j : Fin 128) :
    val_main_v29 (F := Ideal) x1 x10 x11 (ix2 i j) = E (⟨31744 + i.val, by omega⟩ : Fin 64512) 1 j := by
  rw [val_main_v29_apply, slice29]
  exact Emb.feat_apply x0 x1 x2 x3 x4 x5 x8 x9 x10 x11 x12 x13 x14 x15 _ j

theorem piece2_apply (i : Fin 32768) (j : Fin 128) :
    val_main_v30 (F := Ideal) x3 x14 x15 (ix2 i j) = E (⟨31744 + i.val, by omega⟩ : Fin 64512) 2 j := by
  rw [val_main_v30_apply, slice30]
  exact Emb.c1_apply x0 x1 x2 x3 x4 x5 x8 x9 x10 x11 x12 x13 x14 x15 _ j

theorem piece3_apply (i : Fin 32768) (j : Fin 128) :
    val_main_v31 (F := Ideal) x4 x14 x15 (ix2 i j) = E (⟨31744 + i.val, by omega⟩ : Fin 64512) 3 j := by
  rw [val_main_v31_apply, slice31]
  exact Emb.c2_apply x0 x1 x2 x3 x4 x5 x8 x9 x10 x11 x12 x13 x14 x15 _ j

theorem piece4_apply (i : Fin 32768) (j : Fin 128) :
    val_main_v32 (F := Ideal) x2 x5 x12 x13 (ix2 i j) = E (⟨31744 + i.val, by omega⟩ : Fin 64512) 4 j := by
  rw [val_main_v32_apply, slice32]
  exact Emb.bm_apply x0 x1 x2 x3 x4 x5 x8 x9 x10 x11 x12 x13 x14 x15 _ j

theorem cat_apply (i : Fin 32768) (k : Fin 1408) :
    val_main_v33 (F := Ideal) x0 x1 x2 x3 x4 x5 x8 x9 x10 x11 x12 x13 x14 x15 (ix2 i k)
      = cat11 (pieces (E (⟨31744 + i.val, by omega⟩ : Fin 64512)) (fun _ _ => 0)) k := by
  unfold val_main_v33
  have lo := pieces_lo (E (⟨31744 + i.val, by omega⟩ : Fin 64512)) (fun _ _ => 0)
  have hi := pieces_hi (E (⟨31744 + i.val, by omega⟩ : Fin 64512)) (fun _ _ => 0)
  exact concat11_read _ _ _ _ _ _ _ _ _ _ _ _ i k (pieces (E (⟨31744 + i.val, by omega⟩ : Fin 64512)) (fun _ _ => 0))
    (fun j => (piece0_apply x0 x1 x2 x3 x4 x5 x8 x9 x10 x11 x12 x13 x14 x15 i j).trans (lo j).1.symm)
    (fun j => (piece1_apply x0 x1 x2 x3 x4 x5 x8 x9 x10 x11 x12 x13 x14 x15 i j).trans (lo j).2.1.symm)
    (fun j => (piece2_apply x0 x1 x2 x3 x4 x5 x8 x9 x10 x11 x12 x13 x14 x15 i j).trans (lo j).2.2.1.symm)
    (fun j => (piece3_apply x0 x1 x2 x3 x4 x5 x8 x9 x10 x11 x12 x13 x14 x15 i j).trans (lo j).2.2.2.1.symm)
    (fun j => (piece4_apply x0 x1 x2 x3 x4 x5 x8 x9 x10 x11 x12 x13 x14 x15 i j).trans (lo j).2.2.2.2.symm)
    (fun j => (zeros_apply i j).trans (hi j).1.symm)
    (fun j => (zeros_apply i j).trans (hi j).2.1.symm)
    (fun j => (zeros_apply i j).trans (hi j).2.2.1.symm)
    (fun j => (zeros_apply i j).trans (hi j).2.2.2.1.symm)
    (fun j => (zeros_apply i j).trans (hi j).2.2.2.2.1.symm)
    (fun j => (zeros_apply i j).trans (hi j).2.2.2.2.2.symm)

theorem l1_apply (i : Fin 32768) (j : Fin 512) :
    val_main_v38 (F := Ideal) x0 x1 x2 x3 x4 x5 x8 x9 x10 x11 x12 x13 x14 x15 x16 x17 (ix2 i j)
      = TreeNN.relu (TreeNN.dense (cat11 (pieces (E (⟨31744 + i.val, by omega⟩ : Fin 64512)) (fun _ _ => 0))) (mat x16) (vec x17)) j := by
  rw [val_main_v38_apply, val_main_v37_apply, val_main_v34_apply, val_main_v36_apply, val_main_v35_apply,
    val_main_call0_v0_apply, val_main_call0_cst_apply]
  simp only [lidx34, ridx34, bidx36, cat_apply, Ideal.addf_def, Ideal.maximumf_def, Ideal.ofBits_def,
    Ideal.ofBits_zero_f32]
  rfl

theorem l2_apply (i : Fin 32768) (j : Fin 256) :
    val_main_v43 (F := Ideal) x0 x1 x2 x3 x4 x5 x8 x9 x10 x11 x12 x13 x14 x15 x16 x17 x18 x19 (ix2 i j)
      = TreeNN.relu (TreeNN.dense (TreeNN.relu (TreeNN.dense (cat11 (pieces (E (⟨31744 + i.val, by omega⟩ : Fin 64512)) (fun _ _ => 0)))
          (mat x16) (vec x17))) (mat x18) (vec x19)) j := by
  rw [val_main_v43_apply, val_main_v42_apply, val_main_v39_apply, val_main_v41_apply, val_main_v40_apply,
    val_main_call1_v0_apply, val_main_call1_cst_apply]
  simp only [lidx39, ridx39, bidx41, l1_apply, Ideal.addf_def, Ideal.maximumf_def, Ideal.ofBits_def,
    Ideal.ofBits_zero_f32]
  rfl

theorem rep_apply (i : Fin 32768) (j : Fin 128) :
    val_main_v48 (F := Ideal) x0 x1 x2 x3 x4 x5 x8 x9 x10 x11 x12 x13 x14 x15 x16 x17 x18 x19 x20 x21 (ix2 i j) = (level5 E P).rep i j := by
  rw [val_main_v48_apply, val_main_v47_apply, val_main_v44_apply, val_main_v46_apply, val_main_v45_apply,
    val_main_call2_v0_apply, val_main_call2_cst_apply]
  simp only [lidx44, ridx44, bidx46, l2_apply, Ideal.addf_def, Ideal.maximumf_def, Ideal.ofBits_def,
    Ideal.ofBits_zero_f32]
  rfl

end

end Cert.ReferenceIdeal.L5

end
-- ==== Proof.RefLevelLib.lean ====
import proofs.«410031_j84061099917532_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal

open Idealize.ShloMosaic
open TreeNN ValueIdx

/-- Column k of eleven 128-wide arrays laid side by side is column k % 128 of piece k / 128. -/
theorem concat11_family {α : Type} {n : ℕ} (u : Fin 11 → ((⟨2, ![n, 128]⟩ : Shape).Idx → α))
    (h : Shape.Concatenates (([⟨⟨2, ![n, 128]⟩, u 0⟩, ⟨⟨2, ![n, 128]⟩, u 1⟩, ⟨⟨2, ![n, 128]⟩, u 2⟩, ⟨⟨2, ![n, 128]⟩, u 3⟩,
      ⟨⟨2, ![n, 128]⟩, u 4⟩, ⟨⟨2, ![n, 128]⟩, u 5⟩, ⟨⟨2, ![n, 128]⟩, u 6⟩, ⟨⟨2, ![n, 128]⟩, u 7⟩, ⟨⟨2, ![n, 128]⟩, u 8⟩,
      ⟨⟨2, ![n, 128]⟩, u 9⟩, ⟨⟨2, ![n, 128]⟩, u 10⟩] : List ((s : Shape) × (s.Idx → α))).map (·.1)) ⟨2, ![n, 1408]⟩ 1)
    (i : Fin n) (k : Fin 1408) :
    concatenate ⟨2, ![n, 1408]⟩ 1 [⟨⟨2, ![n, 128]⟩, u 0⟩, ⟨⟨2, ![n, 128]⟩, u 1⟩, ⟨⟨2, ![n, 128]⟩, u 2⟩, ⟨⟨2, ![n, 128]⟩, u 3⟩,
      ⟨⟨2, ![n, 128]⟩, u 4⟩, ⟨⟨2, ![n, 128]⟩, u 5⟩, ⟨⟨2, ![n, 128]⟩, u 6⟩, ⟨⟨2, ![n, 128]⟩, u 7⟩, ⟨⟨2, ![n, 128]⟩, u 8⟩,
      ⟨⟨2, ![n, 128]⟩, u 9⟩, ⟨⟨2, ![n, 128]⟩, u 10⟩] h (ix2 i k)
      = u ⟨k.val / 128, by omega⟩ (ix2 i ⟨k.val % 128, by omega⟩) := by
  have hl : ([⟨⟨2, ![n, 128]⟩, u 0⟩, ⟨⟨2, ![n, 128]⟩, u 1⟩, ⟨⟨2, ![n, 128]⟩, u 2⟩, ⟨⟨2, ![n, 128]⟩, u 3⟩,
      ⟨⟨2, ![n, 128]⟩, u 4⟩, ⟨⟨2, ![n, 128]⟩, u 5⟩, ⟨⟨2, ![n, 128]⟩, u 6⟩, ⟨⟨2, ![n, 128]⟩, u 7⟩, ⟨⟨2, ![n, 128]⟩, u 8⟩,
      ⟨⟨2, ![n, 128]⟩, u 9⟩, ⟨⟨2, ![n, 128]⟩, u 10⟩] : List ((s : Shape) × (s.Idx → α)))
      = List.ofFn fun q : Fin 11 => (⟨⟨2, ![n, 128]⟩, u q⟩ : (s : Shape) × (s.Idx → α)) := rfl
  revert h
  rw [hl]
  intro h
  refine concatenate_ofFn_apply (t := ⟨2, ![n, 1408]⟩) (s₁ := ⟨2, ![n, 128]⟩) (1 : Fin 2) u h rfl 128 rfl (ix2 i k)
    ⟨k.val / 128, by omega⟩ rfl (ix2 i ⟨k.val % 128, by omega⟩) rfl ?_
  intro b hb
  match b with
  | ⟨0, _⟩ => rfl
  | ⟨1, _⟩ => exact absurd rfl hb

theorem concat11_apply {α : Type} {n : ℕ} (u0 u1 u2 u3 u4 u5 u6 u7 u8 u9 u10 : (⟨2, ![n, 128]⟩ : Shape).Idx → α)
    (h : Shape.Concatenates (([⟨⟨2, ![n, 128]⟩, u0⟩, ⟨⟨2, ![n, 128]⟩, u1⟩, ⟨⟨2, ![n, 128]⟩, u2⟩, ⟨⟨2, ![n, 128]⟩, u3⟩,
      ⟨⟨2, ![n, 128]⟩, u4⟩, ⟨⟨2, ![n, 128]⟩, u5⟩, ⟨⟨2, ![n, 128]⟩, u6⟩, ⟨⟨2, ![n, 128]⟩, u7⟩, ⟨⟨2, ![n, 128]⟩, u8⟩,
      ⟨⟨2, ![n, 128]⟩, u9⟩, ⟨⟨2, ![n, 128]⟩, u10⟩] : List ((s : Shape) × (s.Idx → α))).map (·.1)) ⟨2, ![n, 1408]⟩ 1)
    (i : Fin n) (k : Fin 1408) :
    concatenate ⟨2, ![n, 1408]⟩ 1 [⟨⟨2, ![n, 128]⟩, u0⟩, ⟨⟨2, ![n, 128]⟩, u1⟩, ⟨⟨2, ![n, 128]⟩, u2⟩, ⟨⟨2, ![n, 128]⟩, u3⟩,
      ⟨⟨2, ![n, 128]⟩, u4⟩, ⟨⟨2, ![n, 128]⟩, u5⟩, ⟨⟨2, ![n, 128]⟩, u6⟩, ⟨⟨2, ![n, 128]⟩, u7⟩, ⟨⟨2, ![n, 128]⟩, u8⟩,
      ⟨⟨2, ![n, 128]⟩, u9⟩, ⟨⟨2, ![n, 128]⟩, u10⟩] h (ix2 i k)
      = (![u0, u1, u2, u3, u4, u5, u6, u7, u8, u9, u10] : Fin 11 → (⟨2, ![n, 128]⟩ : Shape).Idx → α) ⟨k.val / 128, by omega⟩
          (ix2 i ⟨k.val % 128, by omega⟩) :=
  concat11_family ![u0, u1, u2, u3, u4, u5, u6, u7, u8, u9, u10] h i k

theorem sel0 {β : Type} (u0 u1 u2 u3 u4 u5 u6 u7 u8 u9 u10 : β) : (![u0, u1, u2, u3, u4, u5, u6, u7, u8, u9, u10] : Fin 11 → β) ⟨0, by omega⟩ = u0 := rfl

theorem sel1 {β : Type} (u0 u1 u2 u3 u4 u5 u6 u7 u8 u9 u10 : β) : (![u0, u1, u2, u3, u4, u5, u6, u7, u8, u9, u10] : Fin 11 → β) ⟨1, by omega⟩ = u1 := rfl

theorem sel2 {β : Type} (u0 u1 u2 u3 u4 u5 u6 u7 u8 u9 u10 : β) : (![u0, u1, u2, u3, u4, u5, u6, u7, u8, u9, u10] : Fin 11 → β) ⟨2, by omega⟩ = u2 := rfl

theorem sel3 {β : Type} (u0 u1 u2 u3 u4 u5 u6 u7 u8 u9 u10 : β) : (![u0, u1, u2, u3, u4, u5, u6, u7, u8, u9, u10] : Fin 11 → β) ⟨3, by omega⟩ = u3 := rfl

theorem sel4 {β : Type} (u0 u1 u2 u3 u4 u5 u6 u7 u8 u9 u10 : β) : (![u0, u1, u2, u3, u4, u5, u6, u7, u8, u9, u10] : Fin 11 → β) ⟨4, by omega⟩ = u4 := rfl

theorem sel5 {β : Type} (u0 u1 u2 u3 u4 u5 u6 u7 u8 u9 u10 : β) : (![u0, u1, u2, u3, u4, u5, u6, u7, u8, u9, u10] : Fin 11 → β) ⟨5, by omega⟩ = u5 := rfl

theorem sel6 {β : Type} (u0 u1 u2 u3 u4 u5 u6 u7 u8 u9 u10 : β) : (![u0, u1, u2, u3, u4, u5, u6, u7, u8, u9, u10] : Fin 11 → β) ⟨6, by omega⟩ = u6 := rfl

theorem sel7 {β : Type} (u0 u1 u2 u3 u4 u5 u6 u7 u8 u9 u10 : β) : (![u0, u1, u2, u3, u4, u5, u6, u7, u8, u9, u10] : Fin 11 → β) ⟨7, by omega⟩ = u7 := rfl

theorem sel8 {β : Type} (u0 u1 u2 u3 u4 u5 u6 u7 u8 u9 u10 : β) : (![u0, u1, u2, u3, u4, u5, u6, u7, u8, u9, u10] : Fin 11 → β) ⟨8, by omega⟩ = u8 := rfl

theorem sel9 {β : Type} (u0 u1 u2 u3 u4 u5 u6 u7 u8 u9 u10 : β) : (![u0, u1, u2, u3, u4, u5, u6, u7, u8, u9, u10] : Fin 11 → β) ⟨9, by omega⟩ = u9 := rfl

theorem sel10 {β : Type} (u0 u1 u2 u3 u4 u5 u6 u7 u8 u9 u10 : β) : (![u0, u1, u2, u3, u4, u5, u6, u7, u8, u9, u10] : Fin 11 → β) ⟨10, by omega⟩ = u10 := rfl

theorem pieces_emb0 (e : Fin 5 → Fin 128 → EReal) (ch : Fin 6 → Fin 128 → EReal) (j : Fin 128) :
    pieces e ch ⟨0, by omega⟩ j = e 0 j := rfl

theorem pieces_emb1 (e : Fin 5 → Fin 128 → EReal) (ch : Fin 6 → Fin 128 → EReal) (j : Fin 128) :
    pieces e ch ⟨1, by omega⟩ j = e 1 j := rfl

theorem pieces_emb2 (e : Fin 5 → Fin 128 → EReal) (ch : Fin 6 → Fin 128 → EReal) (j : Fin 128) :
    pieces e ch ⟨2, by omega⟩ j = e 2 j := rfl

theorem pieces_emb3 (e : Fin 5 → Fin 128 → EReal) (ch : Fin 6 → Fin 128 → EReal) (j : Fin 128) :
    pieces e ch ⟨3, by omega⟩ j = e 3 j := rfl

theorem pieces_emb4 (e : Fin 5 → Fin 128 → EReal) (ch : Fin 6 → Fin 128 → EReal) (j : Fin 128) :
    pieces e ch ⟨4, by omega⟩ j = e 4 j := rfl

theorem pieces_child5 (e : Fin 5 → Fin 128 → EReal) (l r : EReal) (a b d : Fin 2 → Fin 128 → EReal) (j : Fin 128) :
    pieces e (childPieces l r a b d) ⟨5, by omega⟩ j = a 0 j * l := rfl

theorem pieces_child6 (e : Fin 5 → Fin 128 → EReal) (l r : EReal) (a b d : Fin 2 → Fin 128 → EReal) (j : Fin 128) :
    pieces e (childPieces l r a b d) ⟨6, by omega⟩ j = a 1 j * r := rfl

theorem pieces_child7 (e : Fin 5 → Fin 128 → EReal) (l r : EReal) (a b d : Fin 2 → Fin 128 → EReal) (j : Fin 128) :
    pieces e (childPieces l r a b d) ⟨7, by omega⟩ j = b 0 j * l := rfl

theorem pieces_child8 (e : Fin 5 → Fin 128 → EReal) (l r : EReal) (a b d : Fin 2 → Fin 128 → EReal) (j : Fin 128) :
    pieces e (childPieces l r a b d) ⟨8, by omega⟩ j = d 0 j * l := rfl

theorem pieces_child9 (e : Fin 5 → Fin 128 → EReal) (l r : EReal) (a b d : Fin 2 → Fin 128 → EReal) (j : Fin 128) :
    pieces e (childPieces l r a b d) ⟨9, by omega⟩ j = b 1 j * r := rfl

theorem pieces_child10 (e : Fin 5 → Fin 128 → EReal) (l r : EReal) (a b d : Fin 2 → Fin 128 → EReal) (j : Fin 128) :
    pieces e (childPieces l r a b d) ⟨10, by omega⟩ j = d 1 j * r := rfl

theorem step_rep (n off : ℕ) (hoff : off + n ≤ 64512) {n2 : ℕ} (h2 : n2 = 2 * n) (E : Fin 64512 → Fin 5 → Fin 128 → EReal)
    (lm rm : Fin 64512 → EReal) (p : MLP3) (below : Carry n2) (i : Fin n) (j : Fin 128) :
    (step n off hoff h2 E lm rm p below).rep i j
      = relu (dense (relu (dense (relu (dense (cat11 (pieces (E ⟨off + i.val, by omega⟩)
          (childPieces (lm ⟨off + i.val, by omega⟩) (rm ⟨off + i.val, by omega⟩) (pair h2 below.rep i) (pair h2 below.lrep i)
            (pair h2 below.rrep i)))) p.W1 p.b1)) p.W2 p.b2)) p.W3 p.b3) j := rfl

theorem step_lrep (n off : ℕ) (hoff : off + n ≤ 64512) {n2 : ℕ} (h2 : n2 = 2 * n) (E : Fin 64512 → Fin 5 → Fin 128 → EReal)
    (lm rm : Fin 64512 → EReal) (p : MLP3) (below : Carry n2) (i : Fin n) (j : Fin 128) :
    (step n off hoff h2 E lm rm p below).lrep i j = below.rep ⟨2 * i.val + 0, by omega⟩ j * lm ⟨off + i.val, by omega⟩ := rfl

theorem step_rrep (n off : ℕ) (hoff : off + n ≤ 64512) {n2 : ℕ} (h2 : n2 = 2 * n) (E : Fin 64512 → Fin 5 → Fin 128 → EReal)
    (lm rm : Fin 64512 → EReal) (p : MLP3) (below : Carry n2) (i : Fin n) (j : Fin 128) :
    (step n off hoff h2 E lm rm p below).rrep i j = below.rep ⟨2 * i.val + 1, by omega⟩ j * rm ⟨off + i.val, by omega⟩ := rfl

theorem pair_apply {n n2 : ℕ} (h2 : n2 = 2 * n) (f : Fin n2 → Fin 128 → EReal) (i : Fin n) (s : Fin 2) (j : Fin 128) :
    pair h2 f i s j = f ⟨2 * i.val + s.val, by omega⟩ j := rfl

end Cert.ReferenceIdeal

end
-- ==== Proof.RefL4.lean ====
import proofs.«410031_j84061099917532_3_alg».proof.Proof.RefBase
import proofs.«410031_j84061099917532_3_alg».proof.Proof.RefEmb
import proofs.«410031_j84061099917532_3_alg».proof.Proof.RefLevelLib

noncomputable section

namespace Cert.ReferenceIdeal.L4

open Idealize.ShloMosaic Cert.ReferenceIdeal Cert.ReferenceIdeal.Stages
open TreeNN ValueIdx

theorem child_idx60 (y : S16384x128.Idx) :
    idx_main_v49 (idx_main_v56 (idx_main_v57 (idx_main_v60 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx60 (y : S16384x128.Idx) :
    idx_main_v52 (idx_main_v53 (idx_main_v58 (idx_main_v60 y)))
      = ix1 ⟨15360 + (y 0).val, by have := idx2_lt0 y; omega⟩ := by
  have h0 := idx2_lt0 y
  have h1 := idx2_lt1 y
  funext a
  match a with
  | ⟨0, _⟩ => refine Fin.ext ?_; dsimp only; omega

theorem child_idx65 (y : S16384x128.Idx) :
    idx_main_v50 (idx_main_v61 (idx_main_v62 (idx_main_v65 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx65 (y : S16384x128.Idx) :
    idx_main_v52 (idx_main_v53 (idx_main_v63 (idx_main_v65 y)))
      = ix1 ⟨15360 + (y 0).val, by have := idx2_lt0 y; omega⟩ := by
  have h0 := idx2_lt0 y
  have h1 := idx2_lt1 y
  funext a
  match a with
  | ⟨0, _⟩ => refine Fin.ext ?_; dsimp only; omega

theorem child_idx70 (y : S16384x128.Idx) :
    idx_main_v51 (idx_main_v66 (idx_main_v67 (idx_main_v70 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx70 (y : S16384x128.Idx) :
    idx_main_v52 (idx_main_v53 (idx_main_v68 (idx_main_v70 y)))
      = ix1 ⟨15360 + (y 0).val, by have := idx2_lt0 y; omega⟩ := by
  have h0 := idx2_lt0 y
  have h1 := idx2_lt1 y
  funext a
  match a with
  | ⟨0, _⟩ => refine Fin.ext ?_; dsimp only; omega

theorem child_idx75 (y : S16384x128.Idx) :
    idx_main_v49 (idx_main_v71 (idx_main_v72 (idx_main_v75 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx75 (y : S16384x128.Idx) :
    idx_main_v54 (idx_main_v55 (idx_main_v73 (idx_main_v75 y)))
      = ix1 ⟨15360 + (y 0).val, by have := idx2_lt0 y; omega⟩ := by
  have h0 := idx2_lt0 y
  have h1 := idx2_lt1 y
  funext a
  match a with
  | ⟨0, _⟩ => refine Fin.ext ?_; dsimp only; omega

theorem child_idx80 (y : S16384x128.Idx) :
    idx_main_v50 (idx_main_v76 (idx_main_v77 (idx_main_v80 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx80 (y : S16384x128.Idx) :
    idx_main_v54 (idx_main_v55 (idx_main_v78 (idx_main_v80 y)))
      = ix1 ⟨15360 + (y 0).val, by have := idx2_lt0 y; omega⟩ := by
  have h0 := idx2_lt0 y
  have h1 := idx2_lt1 y
  funext a
  match a with
  | ⟨0, _⟩ => refine Fin.ext ?_; dsimp only; omega

theorem child_idx85 (y : S16384x128.Idx) :
    idx_main_v51 (idx_main_v81 (idx_main_v82 (idx_main_v85 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx85 (y : S16384x128.Idx) :
    idx_main_v54 (idx_main_v55 (idx_main_v83 (idx_main_v85 y)))
      = ix1 ⟨15360 + (y 0).val, by have := idx2_lt0 y; omega⟩ := by
  have h0 := idx2_lt0 y
  have h1 := idx2_lt1 y
  funext a
  match a with
  | ⟨0, _⟩ => refine Fin.ext ?_; dsimp only; omega
theorem emb_idx86 (i : Fin 16384) (c : Fin 128) : idx_main_v86 (ix2 i c) = ix2 ⟨15360 + i.val, by omega⟩ c :=
  funext fun a => Fin.ext (by match a with | ⟨0, _⟩ => rfl | ⟨1, _⟩ => rfl)
theorem emb_idx87 (i : Fin 16384) (c : Fin 128) : idx_main_v87 (ix2 i c) = ix2 ⟨15360 + i.val, by omega⟩ c :=
  funext fun a => Fin.ext (by match a with | ⟨0, _⟩ => rfl | ⟨1, _⟩ => rfl)
theorem emb_idx88 (i : Fin 16384) (c : Fin 128) : idx_main_v88 (ix2 i c) = ix2 ⟨15360 + i.val, by omega⟩ c :=
  funext fun a => Fin.ext (by match a with | ⟨0, _⟩ => rfl | ⟨1, _⟩ => rfl)
theorem emb_idx89 (i : Fin 16384) (c : Fin 128) : idx_main_v89 (ix2 i c) = ix2 ⟨15360 + i.val, by omega⟩ c :=
  funext fun a => Fin.ext (by match a with | ⟨0, _⟩ => rfl | ⟨1, _⟩ => rfl)
theorem emb_idx90 (i : Fin 16384) (c : Fin 128) : idx_main_v90 (ix2 i c) = ix2 ⟨15360 + i.val, by omega⟩ c :=
  funext fun a => Fin.ext (by match a with | ⟨0, _⟩ => rfl | ⟨1, _⟩ => rfl)
theorem lidx92 (i : Fin 16384) (j : Fin 512) (k : Fin 1408) : lidx_main_v92 (ix2 i j) k = ix2 i k :=
  funext fun a => Fin.ext (by match a with | ⟨0, _⟩ => rfl | ⟨1, _⟩ => rfl)
theorem ridx92 (i : Fin 16384) (j : Fin 512) (k : Fin 1408) : ridx_main_v92 (ix2 i j) k = ix2 k j :=
  funext fun a => Fin.ext (by match a with | ⟨0, _⟩ => rfl | ⟨1, _⟩ => rfl)
theorem bias_idx92 (i : Fin 16384) (j : Fin 512) : idx_main_v93 (idx_main_v94 (ix2 i j)) = ix1 j :=
  funext fun a => Fin.ext (by match a with | ⟨0, _⟩ => rfl)
theorem lidx97 (i : Fin 16384) (j : Fin 256) (k : Fin 512) : lidx_main_v97 (ix2 i j) k = ix2 i k :=
  funext fun a => Fin.ext (by match a with | ⟨0, _⟩ => rfl | ⟨1, _⟩ => rfl)
theorem ridx97 (i : Fin 16384) (j : Fin 256) (k : Fin 512) : ridx_main_v97 (ix2 i j) k = ix2 k j :=
  funext fun a => Fin.ext (by match a with | ⟨0, _⟩ => rfl | ⟨1, _⟩ => rfl)
theorem bias_idx97 (i : Fin 16384) (j : Fin 256) : idx_main_v98 (idx_main_v99 (ix2 i j)) = ix1 j :=
  funext fun a => Fin.ext (by match a with | ⟨0, _⟩ => rfl)
theorem lidx102 (i : Fin 16384) (j : Fin 128) (k : Fin 256) : lidx_main_v102 (ix2 i j) k = ix2 i k :=
  funext fun a => Fin.ext (by match a with | ⟨0, _⟩ => rfl | ⟨1, _⟩ => rfl)
theorem ridx102 (i : Fin 16384) (j : Fin 128) (k : Fin 256) : ridx_main_v102 (ix2 i j) k = ix2 k j :=
  funext fun a => Fin.ext (by match a with | ⟨0, _⟩ => rfl | ⟨1, _⟩ => rfl)
theorem bias_idx102 (i : Fin 16384) (j : Fin 128) : idx_main_v103 (idx_main_v104 (ix2 i j)) = ix1 j :=
  funext fun a => Fin.ext (by match a with | ⟨0, _⟩ => rfl)

section
variable (x0 x1 : (⟨S64512x32, .f32⟩ : BufTy).Contents (Elt Ideal))
  (x2 : (⟨S64512x1000, .f32⟩ : BufTy).Contents (Elt Ideal))
  (x3 x4 : (⟨S64512x4x64, .f32⟩ : BufTy).Contents (Elt Ideal))
  (x5 : (⟨S64512, .f32⟩ : BufTy).Contents (Elt Ideal))
  (x6 x7 : (⟨S64512, .i32⟩ : BufTy).Contents (Elt Ideal))
  (x8 : (⟨S32x128, .f32⟩ : BufTy).Contents (Elt Ideal))
  (x9 : (⟨S128, .f32⟩ : BufTy).Contents (Elt Ideal))
  (x10 : (⟨S32x128, .f32⟩ : BufTy).Contents (Elt Ideal))
  (x11 : (⟨S128, .f32⟩ : BufTy).Contents (Elt Ideal))
  (x12 : (⟨S1000x128, .f32⟩ : BufTy).Contents (Elt Ideal))
  (x13 : (⟨S128, .f32⟩ : BufTy).Contents (Elt Ideal))
  (x14 : (⟨S64x128, .f32⟩ : BufTy).Contents (Elt Ideal))
  (x15 : (⟨S128, .f32⟩ : BufTy).Contents (Elt Ideal))
  (x16 : (⟨S1408x512, .f32⟩ : BufTy).Contents (Elt Ideal))
  (x17 : (⟨S512, .f32⟩ : BufTy).Contents (Elt Ideal))
  (x18 : (⟨S512x256, .f32⟩ : BufTy).Contents (Elt Ideal))
  (x19 : (⟨S256, .f32⟩ : BufTy).Contents (Elt Ideal))
  (x20 : (⟨S256x128, .f32⟩ : BufTy).Contents (Elt Ideal))
  (x21 : (⟨S128, .f32⟩ : BufTy).Contents (Elt Ideal))

theorem piece60 (i : Fin 16384) (j : Fin 128) :
    val_main_v60 (F := Ideal) x0 x1 x2 x3 x4 x5 x6 x8 x9 x10 x11 x12 x13 x14 x15 x16 x17 x18 x19 x20 x21 (ix2 i j)
      = val_main_v48 (F := Ideal) x0 x1 x2 x3 x4 x5 x8 x9 x10 x11 x12 x13 x14 x15 x16 x17 x18 x19 x20 x21 (ix2 ⟨2 * i.val + 0, by omega⟩ j)
          * val_main_v25 (F := Ideal) x6 (ix1 ⟨15360 + i.val, by omega⟩) := by
  rw [val_main_v60_apply, val_main_v59_apply, val_main_v57_apply, val_main_v56_apply, val_main_v49_apply,
    val_main_v58_apply, val_main_v53_apply, val_main_v52_apply, child_idx60, mask_idx60]
  rfl

theorem piece65 (i : Fin 16384) (j : Fin 128) :
    val_main_v65 (F := Ideal) x6 (ix2 i j)
      = val_main_v27 (F := Ideal) (ix2 ⟨2 * i.val + 0, by omega⟩ j)
          * val_main_v25 (F := Ideal) x6 (ix1 ⟨15360 + i.val, by omega⟩) := by
  rw [val_main_v65_apply, val_main_v64_apply, val_main_v62_apply, val_main_v61_apply, val_main_v50_apply,
    val_main_v63_apply, val_main_v53_apply, val_main_v52_apply, child_idx65, mask_idx65]
  rfl

theorem piece70 (i : Fin 16384) (j : Fin 128) :
    val_main_v70 (F := Ideal) x6 (ix2 i j)
      = val_main_v27 (F := Ideal) (ix2 ⟨2 * i.val + 0, by omega⟩ j)
          * val_main_v25 (F := Ideal) x6 (ix1 ⟨15360 + i.val, by omega⟩) := by
  rw [val_main_v70_apply, val_main_v69_apply, val_main_v67_apply, val_main_v66_apply, val_main_v51_apply,
    val_main_v68_apply, val_main_v53_apply, val_main_v52_apply, child_idx70, mask_idx70]
  rfl

theorem piece75 (i : Fin 16384) (j : Fin 128) :
    val_main_v75 (F := Ideal) x0 x1 x2 x3 x4 x5 x7 x8 x9 x10 x11 x12 x13 x14 x15 x16 x17 x18 x19 x20 x21 (ix2 i j)
      = val_main_v48 (F := Ideal) x0 x1 x2 x3 x4 x5 x8 x9 x10 x11 x12 x13 x14 x15 x16 x17 x18 x19 x20 x21 (ix2 ⟨2 * i.val + 1, by omega⟩ j)
          * val_main_v26 (F := Ideal) x7 (ix1 ⟨15360 + i.val, by omega⟩) := by
  rw [val_main_v75_apply, val_main_v74_apply, val_main_v72_apply, val_main_v71_apply, val_main_v49_apply,
    val_main_v73_apply, val_main_v55_apply, val_main_v54_apply, child_idx75, mask_idx75]
  rfl

theorem piece80 (i : Fin 16384) (j : Fin 128) :
    val_main_v80 (F := Ideal) x7 (ix2 i j)
      = val_main_v27 (F := Ideal) (ix2 ⟨2 * i.val + 1, by omega⟩ j)
          * val_main_v26 (F := Ideal) x7 (ix1 ⟨15360 + i.val, by omega⟩) := by
  rw [val_main_v80_apply, val_main_v79_apply, val_main_v77_apply, val_main_v76_apply, val_main_v50_apply,
    val_main_v78_apply, val_main_v55_apply, val_main_v54_apply, child_idx80, mask_idx80]
  rfl

theorem piece85 (i : Fin 16384) (j : Fin 128) :
    val_main_v85 (F := Ideal) x7 (ix2 i j)
      = val_main_v27 (F := Ideal) (ix2 ⟨2 * i.val + 1, by omega⟩ j)
          * val_main_v26 (F := Ideal) x7 (ix1 ⟨15360 + i.val, by omega⟩) := by
  rw [val_main_v85_apply, val_main_v84_apply, val_main_v82_apply, val_main_v81_apply, val_main_v51_apply,
    val_main_v83_apply, val_main_v55_apply, val_main_v54_apply, child_idx85, mask_idx85]
  rfl

theorem emb86 (i : Fin 16384) (c : Fin 128) :
    val_main_v86 (F := Ideal) x0 x8 x9 (ix2 i c) = (embOfArrays x0 x1 x2 x3 x4 x5 x8 x9 x10 x11 x12 x13 x14 x15) ⟨15360 + i.val, by omega⟩ 0 c := by
  rw [val_main_v86_apply, emb_idx86]
  exact Emb.op_apply ..

theorem emb87 (i : Fin 16384) (c : Fin 128) :
    val_main_v87 (F := Ideal) x1 x10 x11 (ix2 i c) = (embOfArrays x0 x1 x2 x3 x4 x5 x8 x9 x10 x11 x12 x13 x14 x15) ⟨15360 + i.val, by omega⟩ 1 c := by
  rw [val_main_v87_apply, emb_idx87]
  exact Emb.feat_apply ..

theorem emb88 (i : Fin 16384) (c : Fin 128) :
    val_main_v88 (F := Ideal) x3 x14 x15 (ix2 i c) = (embOfArrays x0 x1 x2 x3 x4 x5 x8 x9 x10 x11 x12 x13 x14 x15) ⟨15360 + i.val, by omega⟩ 2 c := by
  rw [val_main_v88_apply, emb_idx88]
  exact Emb.c1_apply ..

theorem emb89 (i : Fin 16384) (c : Fin 128) :
    val_main_v89 (F := Ideal) x4 x14 x15 (ix2 i c) = (embOfArrays x0 x1 x2 x3 x4 x5 x8 x9 x10 x11 x12 x13 x14 x15) ⟨15360 + i.val, by omega⟩ 3 c := by
  rw [val_main_v89_apply, emb_idx89]
  exact Emb.c2_apply ..

theorem emb90 (i : Fin 16384) (c : Fin 128) :
    val_main_v90 (F := Ideal) x2 x5 x12 x13 (ix2 i c) = (embOfArrays x0 x1 x2 x3 x4 x5 x8 x9 x10 x11 x12 x13 x14 x15) ⟨15360 + i.val, by omega⟩ 4 c := by
  rw [val_main_v90_apply, emb_idx90]
  exact Emb.bm_apply ..

theorem cat_row (i : Fin 16384) (k : Fin 1408) :
    val_main_v91 (F := Ideal) x0 x1 x2 x3 x4 x5 x6 x7 x8 x9 x10 x11 x12 x13 x14 x15 x16 x17 x18 x19 x20 x21 (ix2 i k)
      = cat11 (fun q c => (![val_main_v86 (F := Ideal) x0 x8 x9,
          val_main_v87 (F := Ideal) x1 x10 x11,
          val_main_v88 (F := Ideal) x3 x14 x15,
          val_main_v89 (F := Ideal) x4 x14 x15,
          val_main_v90 (F := Ideal) x2 x5 x12 x13,
          val_main_v60 (F := Ideal) x0 x1 x2 x3 x4 x5 x6 x8 x9 x10 x11 x12 x13 x14 x15 x16 x17 x18 x19 x20 x21,
          val_main_v75 (F := Ideal) x0 x1 x2 x3 x4 x5 x7 x8 x9 x10 x11 x12 x13 x14 x15 x16 x17 x18 x19 x20 x21,
          val_main_v65 (F := Ideal) x6,
          val_main_v70 (F := Ideal) x6,
          val_main_v80 (F := Ideal) x7,
          val_main_v85 (F := Ideal) x7] : Fin 11 → S16384x128.Idx → EReal) q (ix2 i c)) k := by
  unfold val_main_v91
  exact concat11_apply _ _ _ _ _ _ _ _ _ _ _ _ i k

section
variable (hrep : ∀ (i : Fin 32768) (j : Fin 128), val_main_v48 (F := Ideal) x0 x1 x2 x3 x4 x5 x8 x9 x10 x11 x12 x13 x14 x15 x16 x17 x18 x19 x20 x21 (ix2 i j) = (level5 (embOfArrays x0 x1 x2 x3 x4 x5 x8 x9 x10 x11 x12 x13 x14 x15) (MLP3.ofArrays x16 x17 x18 x19 x20 x21)).rep i j)
  (hl : ∀ (i : Fin 32768) (j : Fin 128), val_main_v27 (F := Ideal) (ix2 i j) = (level5 (embOfArrays x0 x1 x2 x3 x4 x5 x8 x9 x10 x11 x12 x13 x14 x15) (MLP3.ofArrays x16 x17 x18 x19 x20 x21)).lrep i j)
  (hr : ∀ (i : Fin 32768) (j : Fin 128), val_main_v27 (F := Ideal) (ix2 i j) = (level5 (embOfArrays x0 x1 x2 x3 x4 x5 x8 x9 x10 x11 x12 x13 x14 x15) (MLP3.ofArrays x16 x17 x18 x19 x20 x21)).rrep i j)
include hrep hl hr

theorem pieces_eq (i : Fin 16384) (q : Fin 11) (c : Fin 128) :
    (![val_main_v86 (F := Ideal) x0 x8 x9,
        val_main_v87 (F := Ideal) x1 x10 x11,
        val_main_v88 (F := Ideal) x3 x14 x15,
        val_main_v89 (F := Ideal) x4 x14 x15,
        val_main_v90 (F := Ideal) x2 x5 x12 x13,
        val_main_v60 (F := Ideal) x0 x1 x2 x3 x4 x5 x6 x8 x9 x10 x11 x12 x13 x14 x15 x16 x17 x18 x19 x20 x21,
        val_main_v75 (F := Ideal) x0 x1 x2 x3 x4 x5 x7 x8 x9 x10 x11 x12 x13 x14 x15 x16 x17 x18 x19 x20 x21,
        val_main_v65 (F := Ideal) x6,
        val_main_v70 (F := Ideal) x6,
        val_main_v80 (F := Ideal) x7,
        val_main_v85 (F := Ideal) x7] : Fin 11 → S16384x128.Idx → EReal) q (ix2 i c)
      = pieces ((embOfArrays x0 x1 x2 x3 x4 x5 x8 x9 x10 x11 x12 x13 x14 x15) ⟨15360 + i.val, by omega⟩)
          (childPieces ((maskOfArray x6) ⟨15360 + i.val, by omega⟩) ((maskOfArray x7) ⟨15360 + i.val, by omega⟩)
            (pair (by norm_num) (level5 (embOfArrays x0 x1 x2 x3 x4 x5 x8 x9 x10 x11 x12 x13 x14 x15) (MLP3.ofArrays x16 x17 x18 x19 x20 x21)).rep i) (pair (by norm_num) (level5 (embOfArrays x0 x1 x2 x3 x4 x5 x8 x9 x10 x11 x12 x13 x14 x15) (MLP3.ofArrays x16 x17 x18 x19 x20 x21)).lrep i) (pair (by norm_num) (level5 (embOfArrays x0 x1 x2 x3 x4 x5 x8 x9 x10 x11 x12 x13 x14 x15) (MLP3.ofArrays x16 x17 x18 x19 x20 x21)).rrep i)) q c := by
  match q with
  | ⟨0, _⟩ => rw [sel0, pieces_emb0]; exact emb86 ..
  | ⟨1, _⟩ => rw [sel1, pieces_emb1]; exact emb87 ..
  | ⟨2, _⟩ => rw [sel2, pieces_emb2]; exact emb88 ..
  | ⟨3, _⟩ => rw [sel3, pieces_emb3]; exact emb89 ..
  | ⟨4, _⟩ => rw [sel4, pieces_emb4]; exact emb90 ..
  | ⟨5, _⟩ => rw [sel5, pieces_child5, piece60, hrep, Emb.lm_apply]; rfl
  | ⟨6, _⟩ => rw [sel6, pieces_child6, piece75, hrep, Emb.rm_apply]; rfl
  | ⟨7, _⟩ => rw [sel7, pieces_child7, piece65, hl, Emb.lm_apply]; rfl
  | ⟨8, _⟩ => rw [sel8, pieces_child8, piece70, hr, Emb.lm_apply]; rfl
  | ⟨9, _⟩ => rw [sel9, pieces_child9, piece80, hl, Emb.rm_apply]; rfl
  | ⟨10, _⟩ => rw [sel10, pieces_child10, piece85, hr, Emb.rm_apply]; rfl
  | ⟨n + 11, h⟩ => exact absurd h (by omega)

end

theorem layer1 (i : Fin 16384) (j : Fin 512) :
    val_main_v96 (F := Ideal) x0 x1 x2 x3 x4 x5 x6 x7 x8 x9 x10 x11 x12 x13 x14 x15 x16 x17 x18 x19 x20 x21 (ix2 i j)
      = relu (dense (fun k => val_main_v91 (F := Ideal) x0 x1 x2 x3 x4 x5 x6 x7 x8 x9 x10 x11 x12 x13 x14 x15 x16 x17 x18 x19 x20 x21 (ix2 i k)) (mat x16) (vec x17)) j := by
  rw [val_main_v96_apply, val_main_v95_apply, val_main_v92_apply, val_main_v94_apply, val_main_v93_apply,
    val_main_call3_v0_apply, val_main_call3_cst_apply]
  simp only [lidx92, ridx92, bias_idx92, Ideal.maximumf_def, Ideal.addf_def, Ideal.ofBits_def, Ideal.ofBits_zero_f32]
  rfl

theorem layer2 (i : Fin 16384) (j : Fin 256) :
    val_main_v101 (F := Ideal) x0 x1 x2 x3 x4 x5 x6 x7 x8 x9 x10 x11 x12 x13 x14 x15 x16 x17 x18 x19 x20 x21 (ix2 i j)
      = relu (dense (fun k => val_main_v96 (F := Ideal) x0 x1 x2 x3 x4 x5 x6 x7 x8 x9 x10 x11 x12 x13 x14 x15 x16 x17 x18 x19 x20 x21 (ix2 i k)) (mat x18) (vec x19)) j := by
  rw [val_main_v101_apply, val_main_v100_apply, val_main_v97_apply, val_main_v99_apply, val_main_v98_apply,
    val_main_call4_v0_apply, val_main_call4_cst_apply]
  simp only [lidx97, ridx97, bias_idx97, Ideal.maximumf_def, Ideal.addf_def, Ideal.ofBits_def, Ideal.ofBits_zero_f32]
  rfl

theorem layer3 (i : Fin 16384) (j : Fin 128) :
    val_main_v106 (F := Ideal) x0 x1 x2 x3 x4 x5 x6 x7 x8 x9 x10 x11 x12 x13 x14 x15 x16 x17 x18 x19 x20 x21 (ix2 i j)
      = relu (dense (fun k => val_main_v101 (F := Ideal) x0 x1 x2 x3 x4 x5 x6 x7 x8 x9 x10 x11 x12 x13 x14 x15 x16 x17 x18 x19 x20 x21 (ix2 i k)) (mat x20) (vec x21)) j := by
  rw [val_main_v106_apply, val_main_v105_apply, val_main_v102_apply, val_main_v104_apply, val_main_v103_apply,
    val_main_call5_v0_apply, val_main_call5_cst_apply]
  simp only [lidx102, ridx102, bias_idx102, Ideal.maximumf_def, Ideal.addf_def, Ideal.ofBits_def, Ideal.ofBits_zero_f32]
  rfl

section
variable (hrep : ∀ (i : Fin 32768) (j : Fin 128), val_main_v48 (F := Ideal) x0 x1 x2 x3 x4 x5 x8 x9 x10 x11 x12 x13 x14 x15 x16 x17 x18 x19 x20 x21 (ix2 i j) = (level5 (embOfArrays x0 x1 x2 x3 x4 x5 x8 x9 x10 x11 x12 x13 x14 x15) (MLP3.ofArrays x16 x17 x18 x19 x20 x21)).rep i j)
  (hl : ∀ (i : Fin 32768) (j : Fin 128), val_main_v27 (F := Ideal) (ix2 i j) = (level5 (embOfArrays x0 x1 x2 x3 x4 x5 x8 x9 x10 x11 x12 x13 x14 x15) (MLP3.ofArrays x16 x17 x18 x19 x20 x21)).lrep i j)
  (hr : ∀ (i : Fin 32768) (j : Fin 128), val_main_v27 (F := Ideal) (ix2 i j) = (level5 (embOfArrays x0 x1 x2 x3 x4 x5 x8 x9 x10 x11 x12 x13 x14 x15) (MLP3.ofArrays x16 x17 x18 x19 x20 x21)).rrep i j)
include hrep hl hr

theorem rep_eq (i : Fin 16384) (j : Fin 128) :
    val_main_v106 (F := Ideal) x0 x1 x2 x3 x4 x5 x6 x7 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).rep i j := by
  unfold level4
  rw [step_rep, layer3]
  simp only [layer2, layer1, cat_row, pieces_eq x0 x1 x2 x3 x4 x5 x6 x7 x8 x9 x10 x11 x12 x13 x14 x15 x16 x17 x18 x19 x20 x21 hrep hl hr]
  rfl

theorem lrep_eq (i : Fin 16384) (j : Fin 128) :
    val_main_v60 (F := Ideal) x0 x1 x2 x3 x4 x5 x6 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).lrep i j := by
  unfold level4
  rw [step_lrep, piece60, hrep, Emb.lm_apply]

theorem rrep_eq (i : Fin 16384) (j : Fin 128) :
    val_main_v75 (F := Ideal) x0 x1 x2 x3 x4 x5 x7 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).rrep i j := by
  unfold level4
  rw [step_rrep, piece75, hrep, Emb.rm_apply]

theorem level_eq :
    (∀ (i : Fin 16384) (j : Fin 128), val_main_v106 (F := Ideal) x0 x1 x2 x3 x4 x5 x6 x7 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).rep i j)
    ∧ (∀ (i : Fin 16384) (j : Fin 128), val_main_v60 (F := Ideal) x0 x1 x2 x3 x4 x5 x6 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).lrep i j)
    ∧ (∀ (i : Fin 16384) (j : Fin 128), val_main_v75 (F := Ideal) x0 x1 x2 x3 x4 x5 x7 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).rrep i j) :=
  ⟨rep_eq x0 x1 x2 x3 x4 x5 x6 x7 x8 x9 x10 x11 x12 x13 x14 x15 x16 x17 x18 x19 x20 x21 hrep hl hr, lrep_eq x0 x1 x2 x3 x4 x5 x6 x7 x8 x9 x10 x11 x12 x13 x14 x15 x16 x17 x18 x19 x20 x21 hrep hl hr, rrep_eq x0 x1 x2 x3 x4 x5 x6 x7 x8 x9 x10 x11 x12 x13 x14 x15 x16 x17 x18 x19 x20 x21 hrep hl hr⟩

end

end

end Cert.ReferenceIdeal.L4

end
-- ==== Proof.RefL3.lean ====
import proofs.«410031_j84061099917532_3_alg».proof.Proof.RefBase
import proofs.«410031_j84061099917532_3_alg».proof.Proof.RefEmb
import proofs.«410031_j84061099917532_3_alg».proof.Proof.RefLevelLib

noncomputable section

namespace Cert.ReferenceIdeal.L3

open Idealize.ShloMosaic Cert.ReferenceIdeal Cert.ReferenceIdeal.Stages
open TreeNN ValueIdx

theorem child_idx60 (y : S8192x128.Idx) :
    idx_main_v107 (idx_main_v114 (idx_main_v115 (idx_main_v118 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx60 (y : S8192x128.Idx) :
    idx_main_v110 (idx_main_v111 (idx_main_v116 (idx_main_v118 y)))
      = ix1 ⟨7168 + (y 0).val, by have := idx2_lt0 y; omega⟩ := by
  have h0 := idx2_lt0 y
  have h1 := idx2_lt1 y
  funext a
  match a with
  | ⟨0, _⟩ => refine Fin.ext ?_; dsimp only; omega

theorem child_idx65 (y : S8192x128.Idx) :
    idx_main_v108 (idx_main_v119 (idx_main_v120 (idx_main_v123 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx65 (y : S8192x128.Idx) :
    idx_main_v110 (idx_main_v111 (idx_main_v121 (idx_main_v123 y)))
      = ix1 ⟨7168 + (y 0).val, by have := idx2_lt0 y; omega⟩ := by
  have h0 := idx2_lt0 y
  have h1 := idx2_lt1 y
  funext a
  match a with
  | ⟨0, _⟩ => refine Fin.ext ?_; dsimp only; omega

theorem child_idx70 (y : S8192x128.Idx) :
    idx_main_v109 (idx_main_v124 (idx_main_v125 (idx_main_v128 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx70 (y : S8192x128.Idx) :
    idx_main_v110 (idx_main_v111 (idx_main_v126 (idx_main_v128 y)))
      = ix1 ⟨7168 + (y 0).val, by have := idx2_lt0 y; omega⟩ := by
  have h0 := idx2_lt0 y
  have h1 := idx2_lt1 y
  funext a
  match a with
  | ⟨0, _⟩ => refine Fin.ext ?_; dsimp only; omega

theorem child_idx75 (y : S8192x128.Idx) :
    idx_main_v107 (idx_main_v129 (idx_main_v130 (idx_main_v133 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx75 (y : S8192x128.Idx) :
    idx_main_v112 (idx_main_v113 (idx_main_v131 (idx_main_v133 y)))
      = ix1 ⟨7168 + (y 0).val, by have := idx2_lt0 y; omega⟩ := by
  have h0 := idx2_lt0 y
  have h1 := idx2_lt1 y
  funext a
  match a with
  | ⟨0, _⟩ => refine Fin.ext ?_; dsimp only; omega

theorem child_idx80 (y : S8192x128.Idx) :
    idx_main_v108 (idx_main_v134 (idx_main_v135 (idx_main_v138 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx80 (y : S8192x128.Idx) :
    idx_main_v112 (idx_main_v113 (idx_main_v136 (idx_main_v138 y)))
      = ix1 ⟨7168 + (y 0).val, by have := idx2_lt0 y; omega⟩ := by
  have h0 := idx2_lt0 y
  have h1 := idx2_lt1 y
  funext a
  match a with
  | ⟨0, _⟩ => refine Fin.ext ?_; dsimp only; omega

theorem child_idx85 (y : S8192x128.Idx) :
    idx_main_v109 (idx_main_v139 (idx_main_v140 (idx_main_v143 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx85 (y : S8192x128.Idx) :
    idx_main_v112 (idx_main_v113 (idx_main_v141 (idx_main_v143 y)))
      = ix1 ⟨7168 + (y 0).val, by have := idx2_lt0 y; omega⟩ := by
  have h0 := idx2_lt0 y
  have h1 := idx2_lt1 y
  funext a
  match a with
  | ⟨0, _⟩ => refine Fin.ext ?_; dsimp only; omega
theorem emb_idx86 (i : Fin 8192) (c : Fin 128) : idx_main_v144 (ix2 i c) = ix2 ⟨7168 + i.val, by omega⟩ c :=
  funext fun a => Fin.ext (by match a with | ⟨0, _⟩ => rfl | ⟨1, _⟩ => rfl)
theorem emb_idx87 (i : Fin 8192) (c : Fin 128) : idx_main_v145 (ix2 i c) = ix2 ⟨7168 + i.val, by omega⟩ c :=
  funext fun a => Fin.ext (by match a with | ⟨0, _⟩ => rfl | ⟨1, _⟩ => rfl)
theorem emb_idx88 (i : Fin 8192) (c : Fin 128) : idx_main_v146 (ix2 i c) = ix2 ⟨7168 + i.val, by omega⟩ c :=
  funext fun a => Fin.ext (by match a with | ⟨0, _⟩ => rfl | ⟨1, _⟩ => rfl)
theorem emb_idx89 (i : Fin 8192) (c : Fin 128) : idx_main_v147 (ix2 i c) = ix2 ⟨7168 + i.val, by omega⟩ c :=
  funext fun a => Fin.ext (by match a with | ⟨0, _⟩ => rfl | ⟨1, _⟩ => rfl)
theorem emb_idx90 (i : Fin 8192) (c : Fin 128) : idx_main_v148 (ix2 i c) = ix2 ⟨7168 + i.val, by omega⟩ c :=
  funext fun a => Fin.ext (by match a with | ⟨0, _⟩ => rfl | ⟨1, _⟩ => rfl)
theorem lidx92 (i : Fin 8192) (j : Fin 512) (k : Fin 1408) : lidx_main_v150 (ix2 i j) k = ix2 i k :=
  funext fun a => Fin.ext (by match a with | ⟨0, _⟩ => rfl | ⟨1, _⟩ => rfl)
theorem ridx92 (i : Fin 8192) (j : Fin 512) (k : Fin 1408) : ridx_main_v150 (ix2 i j) k = ix2 k j :=
  funext fun a => Fin.ext (by match a with | ⟨0, _⟩ => rfl | ⟨1, _⟩ => rfl)
theorem bias_idx92 (i : Fin 8192) (j : Fin 512) : idx_main_v151 (idx_main_v152 (ix2 i j)) = ix1 j :=
  funext fun a => Fin.ext (by match a with | ⟨0, _⟩ => rfl)
theorem lidx97 (i : Fin 8192) (j : Fin 256) (k : Fin 512) : lidx_main_v155 (ix2 i j) k = ix2 i k :=
  funext fun a => Fin.ext (by match a with | ⟨0, _⟩ => rfl | ⟨1, _⟩ => rfl)
theorem ridx97 (i : Fin 8192) (j : Fin 256) (k : Fin 512) : ridx_main_v155 (ix2 i j) k = ix2 k j :=
  funext fun a => Fin.ext (by match a with | ⟨0, _⟩ => rfl | ⟨1, _⟩ => rfl)
theorem bias_idx97 (i : Fin 8192) (j : Fin 256) : idx_main_v156 (idx_main_v157 (ix2 i j)) = ix1 j :=
  funext fun a => Fin.ext (by match a with | ⟨0, _⟩ => rfl)
theorem lidx102 (i : Fin 8192) (j : Fin 128) (k : Fin 256) : lidx_main_v160 (ix2 i j) k = ix2 i k :=
  funext fun a => Fin.ext (by match a with | ⟨0, _⟩ => rfl | ⟨1, _⟩ => rfl)
theorem ridx102 (i : Fin 8192) (j : Fin 128) (k : Fin 256) : ridx_main_v160 (ix2 i j) k = ix2 k j :=
  funext fun a => Fin.ext (by match a with | ⟨0, _⟩ => rfl | ⟨1, _⟩ => rfl)
theorem bias_idx102 (i : Fin 8192) (j : Fin 128) : idx_main_v161 (idx_main_v162 (ix2 i j)) = ix1 j :=
  funext fun a => Fin.ext (by match a with | ⟨0, _⟩ => rfl)

section
variable (x0 x1 : (⟨S64512x32, .f32⟩ : BufTy).Contents (Elt Ideal))
  (x2 : (⟨S64512x1000, .f32⟩ : BufTy).Contents (Elt Ideal))
  (x3 x4 : (⟨S64512x4x64, .f32⟩ : BufTy).Contents (Elt Ideal))
  (x5 : (⟨S64512, .f32⟩ : BufTy).Contents (Elt Ideal))
  (x6 x7 : (⟨S64512, .i32⟩ : BufTy).Contents (Elt Ideal))
  (x8 : (⟨S32x128, .f32⟩ : BufTy).Contents (Elt Ideal))
  (x9 : (⟨S128, .f32⟩ : BufTy).Contents (Elt Ideal))
  (x10 : (⟨S32x128, .f32⟩ : BufTy).Contents (Elt Ideal))
  (x11 : (⟨S128, .f32⟩ : BufTy).Contents (Elt Ideal))
  (x12 : (⟨S1000x128, .f32⟩ : BufTy).Contents (Elt Ideal))
  (x13 : (⟨S128, .f32⟩ : BufTy).Contents (Elt Ideal))
  (x14 : (⟨S64x128, .f32⟩ : BufTy).Contents (Elt Ideal))
  (x15 : (⟨S128, .f32⟩ : BufTy).Contents (Elt Ideal))
  (x16 : (⟨S1408x512, .f32⟩ : BufTy).Contents (Elt Ideal))
  (x17 : (⟨S512, .f32⟩ : BufTy).Contents (Elt Ideal))
  (x18 : (⟨S512x256, .f32⟩ : BufTy).Contents (Elt Ideal))
  (x19 : (⟨S256, .f32⟩ : BufTy).Contents (Elt Ideal))
  (x20 : (⟨S256x128, .f32⟩ : BufTy).Contents (Elt Ideal))
  (x21 : (⟨S128, .f32⟩ : BufTy).Contents (Elt Ideal))

theorem piece60 (i : Fin 8192) (j : Fin 128) :
    val_main_v118 (F := Ideal) x0 x1 x2 x3 x4 x5 x6 x7 x8 x9 x10 x11 x12 x13 x14 x15 x16 x17 x18 x19 x20 x21 (ix2 i j)
      = val_main_v106 (F := Ideal) x0 x1 x2 x3 x4 x5 x6 x7 x8 x9 x10 x11 x12 x13 x14 x15 x16 x17 x18 x19 x20 x21 (ix2 ⟨2 * i.val + 0, by omega⟩ j)
          * val_main_v25 (F := Ideal) x6 (ix1 ⟨7168 + i.val, by omega⟩) := by
  rw [val_main_v118_apply, val_main_v117_apply, val_main_v115_apply, val_main_v114_apply, val_main_v107_apply,
    val_main_v116_apply, val_main_v111_apply, val_main_v110_apply, child_idx60, mask_idx60]
  rfl

theorem piece65 (i : Fin 8192) (j : Fin 128) :
    val_main_v123 (F := Ideal) x0 x1 x2 x3 x4 x5 x6 x8 x9 x10 x11 x12 x13 x14 x15 x16 x17 x18 x19 x20 x21 (ix2 i j)
      = val_main_v60 (F := Ideal) x0 x1 x2 x3 x4 x5 x6 x8 x9 x10 x11 x12 x13 x14 x15 x16 x17 x18 x19 x20 x21 (ix2 ⟨2 * i.val + 0, by omega⟩ j)
          * val_main_v25 (F := Ideal) x6 (ix1 ⟨7168 + i.val, by omega⟩) := by
  rw [val_main_v123_apply, val_main_v122_apply, val_main_v120_apply, val_main_v119_apply, val_main_v108_apply,
    val_main_v121_apply, val_main_v111_apply, val_main_v110_apply, child_idx65, mask_idx65]
  rfl

theorem piece70 (i : Fin 8192) (j : Fin 128) :
    val_main_v128 (F := Ideal) x0 x1 x2 x3 x4 x5 x6 x7 x8 x9 x10 x11 x12 x13 x14 x15 x16 x17 x18 x19 x20 x21 (ix2 i j)
      = val_main_v75 (F := Ideal) x0 x1 x2 x3 x4 x5 x7 x8 x9 x10 x11 x12 x13 x14 x15 x16 x17 x18 x19 x20 x21 (ix2 ⟨2 * i.val + 0, by omega⟩ j)
          * val_main_v25 (F := Ideal) x6 (ix1 ⟨7168 + i.val, by omega⟩) := by
  rw [val_main_v128_apply, val_main_v127_apply, val_main_v125_apply, val_main_v124_apply, val_main_v109_apply,
    val_main_v126_apply, val_main_v111_apply, val_main_v110_apply, child_idx70, mask_idx70]
  rfl

theorem piece75 (i : Fin 8192) (j : Fin 128) :
    val_main_v133 (F := Ideal) x0 x1 x2 x3 x4 x5 x6 x7 x8 x9 x10 x11 x12 x13 x14 x15 x16 x17 x18 x19 x20 x21 (ix2 i j)
      = val_main_v106 (F := Ideal) x0 x1 x2 x3 x4 x5 x6 x7 x8 x9 x10 x11 x12 x13 x14 x15 x16 x17 x18 x19 x20 x21 (ix2 ⟨2 * i.val + 1, by omega⟩ j)
          * val_main_v26 (F := Ideal) x7 (ix1 ⟨7168 + i.val, by omega⟩) := by
  rw [val_main_v133_apply, val_main_v132_apply, val_main_v130_apply, val_main_v129_apply, val_main_v107_apply,
    val_main_v131_apply, val_main_v113_apply, val_main_v112_apply, child_idx75, mask_idx75]
  rfl

theorem piece80 (i : Fin 8192) (j : Fin 128) :
    val_main_v138 (F := Ideal) x0 x1 x2 x3 x4 x5 x6 x7 x8 x9 x10 x11 x12 x13 x14 x15 x16 x17 x18 x19 x20 x21 (ix2 i j)
      = val_main_v60 (F := Ideal) x0 x1 x2 x3 x4 x5 x6 x8 x9 x10 x11 x12 x13 x14 x15 x16 x17 x18 x19 x20 x21 (ix2 ⟨2 * i.val + 1, by omega⟩ j)
          * val_main_v26 (F := Ideal) x7 (ix1 ⟨7168 + i.val, by omega⟩) := by
  rw [val_main_v138_apply, val_main_v137_apply, val_main_v135_apply, val_main_v134_apply, val_main_v108_apply,
    val_main_v136_apply, val_main_v113_apply, val_main_v112_apply, child_idx80, mask_idx80]
  rfl

theorem piece85 (i : Fin 8192) (j : Fin 128) :
    val_main_v143 (F := Ideal) x0 x1 x2 x3 x4 x5 x7 x8 x9 x10 x11 x12 x13 x14 x15 x16 x17 x18 x19 x20 x21 (ix2 i j)
      = val_main_v75 (F := Ideal) x0 x1 x2 x3 x4 x5 x7 x8 x9 x10 x11 x12 x13 x14 x15 x16 x17 x18 x19 x20 x21 (ix2 ⟨2 * i.val + 1, by omega⟩ j)
          * val_main_v26 (F := Ideal) x7 (ix1 ⟨7168 + i.val, by omega⟩) := by
  rw [val_main_v143_apply, val_main_v142_apply, val_main_v140_apply, val_main_v139_apply, val_main_v109_apply,
    val_main_v141_apply, val_main_v113_apply, val_main_v112_apply, child_idx85, mask_idx85]
  rfl

theorem emb86 (i : Fin 8192) (c : Fin 128) :
    val_main_v144 (F := Ideal) x0 x8 x9 (ix2 i c) = (embOfArrays x0 x1 x2 x3 x4 x5 x8 x9 x10 x11 x12 x13 x14 x15) ⟨7168 + i.val, by omega⟩ 0 c := by
  rw [val_main_v144_apply, emb_idx86]
  exact Emb.op_apply ..

theorem emb87 (i : Fin 8192) (c : Fin 128) :
    val_main_v145 (F := Ideal) x1 x10 x11 (ix2 i c) = (embOfArrays x0 x1 x2 x3 x4 x5 x8 x9 x10 x11 x12 x13 x14 x15) ⟨7168 + i.val, by omega⟩ 1 c := by
  rw [val_main_v145_apply, emb_idx87]
  exact Emb.feat_apply ..

theorem emb88 (i : Fin 8192) (c : Fin 128) :
    val_main_v146 (F := Ideal) x3 x14 x15 (ix2 i c) = (embOfArrays x0 x1 x2 x3 x4 x5 x8 x9 x10 x11 x12 x13 x14 x15) ⟨7168 + i.val, by omega⟩ 2 c := by
  rw [val_main_v146_apply, emb_idx88]
  exact Emb.c1_apply ..

theorem emb89 (i : Fin 8192) (c : Fin 128) :
    val_main_v147 (F := Ideal) x4 x14 x15 (ix2 i c) = (embOfArrays x0 x1 x2 x3 x4 x5 x8 x9 x10 x11 x12 x13 x14 x15) ⟨7168 + i.val, by omega⟩ 3 c := by
  rw [val_main_v147_apply, emb_idx89]
  exact Emb.c2_apply ..

theorem emb90 (i : Fin 8192) (c : Fin 128) :
    val_main_v148 (F := Ideal) x2 x5 x12 x13 (ix2 i c) = (embOfArrays x0 x1 x2 x3 x4 x5 x8 x9 x10 x11 x12 x13 x14 x15) ⟨7168 + i.val, by omega⟩ 4 c := by
  rw [val_main_v148_apply, emb_idx90]
  exact Emb.bm_apply ..

theorem cat_row (i : Fin 8192) (k : Fin 1408) :
    val_main_v149 (F := Ideal) x0 x1 x2 x3 x4 x5 x6 x7 x8 x9 x10 x11 x12 x13 x14 x15 x16 x17 x18 x19 x20 x21 (ix2 i k)
      = cat11 (fun q c => (![val_main_v144 (F := Ideal) x0 x8 x9,
          val_main_v145 (F := Ideal) x1 x10 x11,
          val_main_v146 (F := Ideal) x3 x14 x15,
          val_main_v147 (F := Ideal) x4 x14 x15,
          val_main_v148 (F := Ideal) x2 x5 x12 x13,
          val_main_v118 (F := Ideal) x0 x1 x2 x3 x4 x5 x6 x7 x8 x9 x10 x11 x12 x13 x14 x15 x16 x17 x18 x19 x20 x21,
          val_main_v133 (F := Ideal) x0 x1 x2 x3 x4 x5 x6 x7 x8 x9 x10 x11 x12 x13 x14 x15 x16 x17 x18 x19 x20 x21,
          val_main_v123 (F := Ideal) x0 x1 x2 x3 x4 x5 x6 x8 x9 x10 x11 x12 x13 x14 x15 x16 x17 x18 x19 x20 x21,
          val_main_v128 (F := Ideal) x0 x1 x2 x3 x4 x5 x6 x7 x8 x9 x10 x11 x12 x13 x14 x15 x16 x17 x18 x19 x20 x21,
          val_main_v138 (F := Ideal) x0 x1 x2 x3 x4 x5 x6 x7 x8 x9 x10 x11 x12 x13 x14 x15 x16 x17 x18 x19 x20 x21,
          val_main_v143 (F := Ideal) x0 x1 x2 x3 x4 x5 x7 x8 x9 x10 x11 x12 x13 x14 x15 x16 x17 x18 x19 x20 x21] : Fin 11 → S8192x128.Idx → EReal) q (ix2 i c)) k := by
  unfold val_main_v149
  exact concat11_apply _ _ _ _ _ _ _ _ _ _ _ _ i k

section
variable (hrep : ∀ (i : Fin 16384) (j : Fin 128), val_main_v106 (F := Ideal) x0 x1 x2 x3 x4 x5 x6 x7 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).rep i j)
  (hl : ∀ (i : Fin 16384) (j : Fin 128), val_main_v60 (F := Ideal) x0 x1 x2 x3 x4 x5 x6 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).lrep i j)
  (hr : ∀ (i : Fin 16384) (j : Fin 128), val_main_v75 (F := Ideal) x0 x1 x2 x3 x4 x5 x7 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).rrep i j)
include hrep hl hr

theorem pieces_eq (i : Fin 8192) (q : Fin 11) (c : Fin 128) :
    (![val_main_v144 (F := Ideal) x0 x8 x9,
        val_main_v145 (F := Ideal) x1 x10 x11,
        val_main_v146 (F := Ideal) x3 x14 x15,
        val_main_v147 (F := Ideal) x4 x14 x15,
        val_main_v148 (F := Ideal) x2 x5 x12 x13,
        val_main_v118 (F := Ideal) x0 x1 x2 x3 x4 x5 x6 x7 x8 x9 x10 x11 x12 x13 x14 x15 x16 x17 x18 x19 x20 x21,
        val_main_v133 (F := Ideal) x0 x1 x2 x3 x4 x5 x6 x7 x8 x9 x10 x11 x12 x13 x14 x15 x16 x17 x18 x19 x20 x21,
        val_main_v123 (F := Ideal) x0 x1 x2 x3 x4 x5 x6 x8 x9 x10 x11 x12 x13 x14 x15 x16 x17 x18 x19 x20 x21,
        val_main_v128 (F := Ideal) x0 x1 x2 x3 x4 x5 x6 x7 x8 x9 x10 x11 x12 x13 x14 x15 x16 x17 x18 x19 x20 x21,
        val_main_v138 (F := Ideal) x0 x1 x2 x3 x4 x5 x6 x7 x8 x9 x10 x11 x12 x13 x14 x15 x16 x17 x18 x19 x20 x21,
        val_main_v143 (F := Ideal) x0 x1 x2 x3 x4 x5 x7 x8 x9 x10 x11 x12 x13 x14 x15 x16 x17 x18 x19 x20 x21] : Fin 11 → S8192x128.Idx → EReal) q (ix2 i c)
      = pieces ((embOfArrays x0 x1 x2 x3 x4 x5 x8 x9 x10 x11 x12 x13 x14 x15) ⟨7168 + i.val, by omega⟩)
          (childPieces ((maskOfArray x6) ⟨7168 + i.val, by omega⟩) ((maskOfArray x7) ⟨7168 + i.val, by omega⟩)
            (pair (by norm_num) (level4 (embOfArrays x0 x1 x2 x3 x4 x5 x8 x9 x10 x11 x12 x13 x14 x15) (maskOfArray x6) (maskOfArray x7) (MLP3.ofArrays x16 x17 x18 x19 x20 x21)).rep i) (pair (by norm_num) (level4 (embOfArrays x0 x1 x2 x3 x4 x5 x8 x9 x10 x11 x12 x13 x14 x15) (maskOfArray x6) (maskOfArray x7) (MLP3.ofArrays x16 x17 x18 x19 x20 x21)).lrep i) (pair (by norm_num) (level4 (embOfArrays x0 x1 x2 x3 x4 x5 x8 x9 x10 x11 x12 x13 x14 x15) (maskOfArray x6) (maskOfArray x7) (MLP3.ofArrays x16 x17 x18 x19 x20 x21)).rrep i)) q c := by
  match q with
  | ⟨0, _⟩ => rw [sel0, pieces_emb0]; exact emb86 ..
  | ⟨1, _⟩ => rw [sel1, pieces_emb1]; exact emb87 ..
  | ⟨2, _⟩ => rw [sel2, pieces_emb2]; exact emb88 ..
  | ⟨3, _⟩ => rw [sel3, pieces_emb3]; exact emb89 ..
  | ⟨4, _⟩ => rw [sel4, pieces_emb4]; exact emb90 ..
  | ⟨5, _⟩ => rw [sel5, pieces_child5, piece60, hrep, Emb.lm_apply]; rfl
  | ⟨6, _⟩ => rw [sel6, pieces_child6, piece75, hrep, Emb.rm_apply]; rfl
  | ⟨7, _⟩ => rw [sel7, pieces_child7, piece65, hl, Emb.lm_apply]; rfl
  | ⟨8, _⟩ => rw [sel8, pieces_child8, piece70, hr, Emb.lm_apply]; rfl
  | ⟨9, _⟩ => rw [sel9, pieces_child9, piece80, hl, Emb.rm_apply]; rfl
  | ⟨10, _⟩ => rw [sel10, pieces_child10, piece85, hr, Emb.rm_apply]; rfl
  | ⟨n + 11, h⟩ => exact absurd h (by omega)

end

theorem layer1 (i : Fin 8192) (j : Fin 512) :
    val_main_v154 (F := Ideal) x0 x1 x2 x3 x4 x5 x6 x7 x8 x9 x10 x11 x12 x13 x14 x15 x16 x17 x18 x19 x20 x21 (ix2 i j)
      = relu (dense (fun k => val_main_v149 (F := Ideal) x0 x1 x2 x3 x4 x5 x6 x7 x8 x9 x10 x11 x12 x13 x14 x15 x16 x17 x18 x19 x20 x21 (ix2 i k)) (mat x16) (vec x17)) j := by
  rw [val_main_v154_apply, val_main_v153_apply, val_main_v150_apply, val_main_v152_apply, val_main_v151_apply,
    val_main_call6_v0_apply, val_main_call6_cst_apply]
  simp only [lidx92, ridx92, bias_idx92, Ideal.maximumf_def, Ideal.addf_def, Ideal.ofBits_def, Ideal.ofBits_zero_f32]
  rfl

theorem layer2 (i : Fin 8192) (j : Fin 256) :
    val_main_v159 (F := Ideal) x0 x1 x2 x3 x4 x5 x6 x7 x8 x9 x10 x11 x12 x13 x14 x15 x16 x17 x18 x19 x20 x21 (ix2 i j)
      = relu (dense (fun k => val_main_v154 (F := Ideal) x0 x1 x2 x3 x4 x5 x6 x7 x8 x9 x10 x11 x12 x13 x14 x15 x16 x17 x18 x19 x20 x21 (ix2 i k)) (mat x18) (vec x19)) j := by
  rw [val_main_v159_apply, val_main_v158_apply, val_main_v155_apply, val_main_v157_apply, val_main_v156_apply,
    val_main_call7_v0_apply, val_main_call7_cst_apply]
  simp only [lidx97, ridx97, bias_idx97, Ideal.maximumf_def, Ideal.addf_def, Ideal.ofBits_def, Ideal.ofBits_zero_f32]
  rfl

theorem layer3 (i : Fin 8192) (j : Fin 128) :
    val_main_v164 (F := Ideal) x0 x1 x2 x3 x4 x5 x6 x7 x8 x9 x10 x11 x12 x13 x14 x15 x16 x17 x18 x19 x20 x21 (ix2 i j)
      = relu (dense (fun k => val_main_v159 (F := Ideal) x0 x1 x2 x3 x4 x5 x6 x7 x8 x9 x10 x11 x12 x13 x14 x15 x16 x17 x18 x19 x20 x21 (ix2 i k)) (mat x20) (vec x21)) j := by
  rw [val_main_v164_apply, val_main_v163_apply, val_main_v160_apply, val_main_v162_apply, val_main_v161_apply,
    val_main_call8_v0_apply, val_main_call8_cst_apply]
  simp only [lidx102, ridx102, bias_idx102, Ideal.maximumf_def, Ideal.addf_def, Ideal.ofBits_def, Ideal.ofBits_zero_f32]
  rfl

section
variable (hrep : ∀ (i : Fin 16384) (j : Fin 128), val_main_v106 (F := Ideal) x0 x1 x2 x3 x4 x5 x6 x7 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).rep i j)
  (hl : ∀ (i : Fin 16384) (j : Fin 128), val_main_v60 (F := Ideal) x0 x1 x2 x3 x4 x5 x6 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).lrep i j)
  (hr : ∀ (i : Fin 16384) (j : Fin 128), val_main_v75 (F := Ideal) x0 x1 x2 x3 x4 x5 x7 x8 x9 x10 x11 x12 x13 x14 x15 x16 x17 x18 x19 x20 x21 (ix2 i j) = (level4 (embOfArrays x0 x1 x2 x3 x4 x5 x8 x9 x10 x11 x12 x13 x14 x15) (maskOfArray x6) (maskOfArray x7) (MLP3.ofArrays x16 x17 x18 x19 x20 x21)).rrep i j)
include hrep hl hr

theorem rep_eq (i : Fin 8192) (j : Fin 128) :
    val_main_v164 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).rep i j := by
  unfold level3
  rw [step_rep, layer3]
  simp only [layer2, layer1, cat_row, pieces_eq x0 x1 x2 x3 x4 x5 x6 x7 x8 x9 x10 x11 x12 x13 x14 x15 x16 x17 x18 x19 x20 x21 hrep hl hr]
  rfl

theorem lrep_eq (i : Fin 8192) (j : Fin 128) :
    val_main_v118 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).lrep i j := by
  unfold level3
  rw [step_lrep, piece60, hrep, Emb.lm_apply]

theorem rrep_eq (i : Fin 8192) (j : Fin 128) :
    val_main_v133 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).rrep i j := by
  unfold level3
  rw [step_rrep, piece75, hrep, Emb.rm_apply]

theorem level_eq :
    (∀ (i : Fin 8192) (j : Fin 128), val_main_v164 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).rep i j)
    ∧ (∀ (i : Fin 8192) (j : Fin 128), val_main_v118 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).lrep i j)
    ∧ (∀ (i : Fin 8192) (j : Fin 128), val_main_v133 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).rrep i j) :=
  ⟨rep_eq x0 x1 x2 x3 x4 x5 x6 x7 x8 x9 x10 x11 x12 x13 x14 x15 x16 x17 x18 x19 x20 x21 hrep hl hr, lrep_eq x0 x1 x2 x3 x4 x5 x6 x7 x8 x9 x10 x11 x12 x13 x14 x15 x16 x17 x18 x19 x20 x21 hrep hl hr, rrep_eq x0 x1 x2 x3 x4 x5 x6 x7 x8 x9 x10 x11 x12 x13 x14 x15 x16 x17 x18 x19 x20 x21 hrep hl hr⟩

end

end

end Cert.ReferenceIdeal.L3

end
-- ==== Proof.RefL2.lean ====
import proofs.«410031_j84061099917532_3_alg».proof.Proof.RefBase
import proofs.«410031_j84061099917532_3_alg».proof.Proof.RefEmb
import proofs.«410031_j84061099917532_3_alg».proof.Proof.RefLevelLib

noncomputable section

namespace Cert.ReferenceIdeal.L2

open Idealize.ShloMosaic Cert.ReferenceIdeal Cert.ReferenceIdeal.Stages
open TreeNN ValueIdx

theorem child_idx60 (y : S4096x128.Idx) :
    idx_main_v165 (idx_main_v172 (idx_main_v173 (idx_main_v176 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx60 (y : S4096x128.Idx) :
    idx_main_v168 (idx_main_v169 (idx_main_v174 (idx_main_v176 y)))
      = ix1 ⟨3072 + (y 0).val, by have := idx2_lt0 y; omega⟩ := by
  have h0 := idx2_lt0 y
  have h1 := idx2_lt1 y
  funext a
  match a with
  | ⟨0, _⟩ => refine Fin.ext ?_; dsimp only; omega

theorem child_idx65 (y : S4096x128.Idx) :
    idx_main_v166 (idx_main_v177 (idx_main_v178 (idx_main_v181 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx65 (y : S4096x128.Idx) :
    idx_main_v168 (idx_main_v169 (idx_main_v179 (idx_main_v181 y)))
      = ix1 ⟨3072 + (y 0).val, by have := idx2_lt0 y; omega⟩ := by
  have h0 := idx2_lt0 y
  have h1 := idx2_lt1 y
  funext a
  match a with
  | ⟨0, _⟩ => refine Fin.ext ?_; dsimp only; omega

theorem child_idx70 (y : S4096x128.Idx) :
    idx_main_v167 (idx_main_v182 (idx_main_v183 (idx_main_v186 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx70 (y : S4096x128.Idx) :
    idx_main_v168 (idx_main_v169 (idx_main_v184 (idx_main_v186 y)))
      = ix1 ⟨3072 + (y 0).val, by have := idx2_lt0 y; omega⟩ := by
  have h0 := idx2_lt0 y
  have h1 := idx2_lt1 y
  funext a
  match a with
  | ⟨0, _⟩ => refine Fin.ext ?_; dsimp only; omega

theorem child_idx75 (y : S4096x128.Idx) :
    idx_main_v165 (idx_main_v187 (idx_main_v188 (idx_main_v191 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx75 (y : S4096x128.Idx) :
    idx_main_v170 (idx_main_v171 (idx_main_v189 (idx_main_v191 y)))
      = ix1 ⟨3072 + (y 0).val, by have := idx2_lt0 y; omega⟩ := by
  have h0 := idx2_lt0 y
  have h1 := idx2_lt1 y
  funext a
  match a with
  | ⟨0, _⟩ => refine Fin.ext ?_; dsimp only; omega

theorem child_idx80 (y : S4096x128.Idx) :
    idx_main_v166 (idx_main_v192 (idx_main_v193 (idx_main_v196 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx80 (y : S4096x128.Idx) :
    idx_main_v170 (idx_main_v171 (idx_main_v194 (idx_main_v196 y)))
      = ix1 ⟨3072 + (y 0).val, by have := idx2_lt0 y; omega⟩ := by
  have h0 := idx2_lt0 y
  have h1 := idx2_lt1 y
  funext a
  match a with
  | ⟨0, _⟩ => refine Fin.ext ?_; dsimp only; omega

theorem child_idx85 (y : S4096x128.Idx) :
    idx_main_v167 (idx_main_v197 (idx_main_v198 (idx_main_v201 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx85 (y : S4096x128.Idx) :
    idx_main_v170 (idx_main_v171 (idx_main_v199 (idx_main_v201 y)))
      = ix1 ⟨3072 + (y 0).val, by have := idx2_lt0 y; omega⟩ := by
  have h0 := idx2_lt0 y
  have h1 := idx2_lt1 y
  funext a
  match a with
  | ⟨0, _⟩ => refine Fin.ext ?_; dsimp only; omega
theorem emb_idx86 (i : Fin 4096) (c : Fin 128) : idx_main_v202 (ix2 i c) = ix2 ⟨3072 + i.val, by omega⟩ c :=
  funext fun a => Fin.ext (by match a with | ⟨0, _⟩ => rfl | ⟨1, _⟩ => rfl)
theorem emb_idx87 (i : Fin 4096) (c : Fin 128) : idx_main_v203 (ix2 i c) = ix2 ⟨3072 + i.val, by omega⟩ c :=
  funext fun a => Fin.ext (by match a with | ⟨0, _⟩ => rfl | ⟨1, _⟩ => rfl)
theorem emb_idx88 (i : Fin 4096) (c : Fin 128) : idx_main_v204 (ix2 i c) = ix2 ⟨3072 + i.val, by omega⟩ c :=
  funext fun a => Fin.ext (by match a with | ⟨0, _⟩ => rfl | ⟨1, _⟩ => rfl)
theorem emb_idx89 (i : Fin 4096) (c : Fin 128) : idx_main_v205 (ix2 i c) = ix2 ⟨3072 + i.val, by omega⟩ c :=
  funext fun a => Fin.ext (by match a with | ⟨0, _⟩ => rfl | ⟨1, _⟩ => rfl)
theorem emb_idx90 (i : Fin 4096) (c : Fin 128) : idx_main_v206 (ix2 i c) = ix2 ⟨3072 + i.val, by omega⟩ c :=
  funext fun a => Fin.ext (by match a with | ⟨0, _⟩ => rfl | ⟨1, _⟩ => rfl)
theorem lidx92 (i : Fin 4096) (j : Fin 512) (k : Fin 1408) : lidx_main_v208 (ix2 i j) k = ix2 i k :=
  funext fun a => Fin.ext (by match a with | ⟨0, _⟩ => rfl | ⟨1, _⟩ => rfl)
theorem ridx92 (i : Fin 4096) (j : Fin 512) (k : Fin 1408) : ridx_main_v208 (ix2 i j) k = ix2 k j :=
  funext fun a => Fin.ext (by match a with | ⟨0, _⟩ => rfl | ⟨1, _⟩ => rfl)
theorem bias_idx92 (i : Fin 4096) (j : Fin 512) : idx_main_v209 (idx_main_v210 (ix2 i j)) = ix1 j :=
  funext fun a => Fin.ext (by match a with | ⟨0, _⟩ => rfl)
theorem lidx97 (i : Fin 4096) (j : Fin 256) (k : Fin 512) : lidx_main_v213 (ix2 i j) k = ix2 i k :=
  funext fun a => Fin.ext (by match a with | ⟨0, _⟩ => rfl | ⟨1, _⟩ => rfl)
theorem ridx97 (i : Fin 4096) (j : Fin 256) (k : Fin 512) : ridx_main_v213 (ix2 i j) k = ix2 k j :=
  funext fun a => Fin.ext (by match a with | ⟨0, _⟩ => rfl | ⟨1, _⟩ => rfl)
theorem bias_idx97 (i : Fin 4096) (j : Fin 256) : idx_main_v214 (idx_main_v215 (ix2 i j)) = ix1 j :=
  funext fun a => Fin.ext (by match a with | ⟨0, _⟩ => rfl)
theorem lidx102 (i : Fin 4096) (j : Fin 128) (k : Fin 256) : lidx_main_v218 (ix2 i j) k = ix2 i k :=
  funext fun a => Fin.ext (by match a with | ⟨0, _⟩ => rfl | ⟨1, _⟩ => rfl)
theorem ridx102 (i : Fin 4096) (j : Fin 128) (k : Fin 256) : ridx_main_v218 (ix2 i j) k = ix2 k j :=
  funext fun a => Fin.ext (by match a with | ⟨0, _⟩ => rfl | ⟨1, _⟩ => rfl)
theorem bias_idx102 (i : Fin 4096) (j : Fin 128) : idx_main_v219 (idx_main_v220 (ix2 i j)) = ix1 j :=
  funext fun a => Fin.ext (by match a with | ⟨0, _⟩ => rfl)

section
variable (x0 x1 : (⟨S64512x32, .f32⟩ : BufTy).Contents (Elt Ideal))
  (x2 : (⟨S64512x1000, .f32⟩ : BufTy).Contents (Elt Ideal))
  (x3 x4 : (⟨S64512x4x64, .f32⟩ : BufTy).Contents (Elt Ideal))
  (x5 : (⟨S64512, .f32⟩ : BufTy).Contents (Elt Ideal))
  (x6 x7 : (⟨S64512, .i32⟩ : BufTy).Contents (Elt Ideal))
  (x8 : (⟨S32x128, .f32⟩ : BufTy).Contents (Elt Ideal))
  (x9 : (⟨S128, .f32⟩ : BufTy).Contents (Elt Ideal))
  (x10 : (⟨S32x128, .f32⟩ : BufTy).Contents (Elt Ideal))
  (x11 : (⟨S128, .f32⟩ : BufTy).Contents (Elt Ideal))
  (x12 : (⟨S1000x128, .f32⟩ : BufTy).Contents (Elt Ideal))
  (x13 : (⟨S128, .f32⟩ : BufTy).Contents (Elt Ideal))
  (x14 : (⟨S64x128, .f32⟩ : BufTy).Contents (Elt Ideal))
  (x15 : (⟨S128, .f32⟩ : BufTy).Contents (Elt Ideal))
  (x16 : (⟨S1408x512, .f32⟩ : BufTy).Contents (Elt Ideal))
  (x17 : (⟨S512, .f32⟩ : BufTy).Contents (Elt Ideal))
  (x18 : (⟨S512x256, .f32⟩ : BufTy).Contents (Elt Ideal))
  (x19 : (⟨S256, .f32⟩ : BufTy).Contents (Elt Ideal))
  (x20 : (⟨S256x128, .f32⟩ : BufTy).Contents (Elt Ideal))
  (x21 : (⟨S128, .f32⟩ : BufTy).Contents (Elt Ideal))

theorem piece60 (i : Fin 4096) (j : Fin 128) :
    val_main_v176 (F := Ideal) x0 x1 x2 x3 x4 x5 x6 x7 x8 x9 x10 x11 x12 x13 x14 x15 x16 x17 x18 x19 x20 x21 (ix2 i j)
      = val_main_v164 (F := Ideal) x0 x1 x2 x3 x4 x5 x6 x7 x8 x9 x10 x11 x12 x13 x14 x15 x16 x17 x18 x19 x20 x21 (ix2 ⟨2 * i.val + 0, by omega⟩ j)
          * val_main_v25 (F := Ideal) x6 (ix1 ⟨3072 + i.val, by omega⟩) := by
  rw [val_main_v176_apply, val_main_v175_apply, val_main_v173_apply, val_main_v172_apply, val_main_v165_apply,
    val_main_v174_apply, val_main_v169_apply, val_main_v168_apply, child_idx60, mask_idx60]
  rfl

theorem piece65 (i : Fin 4096) (j : Fin 128) :
    val_main_v181 (F := Ideal) x0 x1 x2 x3 x4 x5 x6 x7 x8 x9 x10 x11 x12 x13 x14 x15 x16 x17 x18 x19 x20 x21 (ix2 i j)
      = val_main_v118 (F := Ideal) x0 x1 x2 x3 x4 x5 x6 x7 x8 x9 x10 x11 x12 x13 x14 x15 x16 x17 x18 x19 x20 x21 (ix2 ⟨2 * i.val + 0, by omega⟩ j)
          * val_main_v25 (F := Ideal) x6 (ix1 ⟨3072 + i.val, by omega⟩) := by
  rw [val_main_v181_apply, val_main_v180_apply, val_main_v178_apply, val_main_v177_apply, val_main_v166_apply,
    val_main_v179_apply, val_main_v169_apply, val_main_v168_apply, child_idx65, mask_idx65]
  rfl

theorem piece70 (i : Fin 4096) (j : Fin 128) :
    val_main_v186 (F := Ideal) x0 x1 x2 x3 x4 x5 x6 x7 x8 x9 x10 x11 x12 x13 x14 x15 x16 x17 x18 x19 x20 x21 (ix2 i j)
      = val_main_v133 (F := Ideal) x0 x1 x2 x3 x4 x5 x6 x7 x8 x9 x10 x11 x12 x13 x14 x15 x16 x17 x18 x19 x20 x21 (ix2 ⟨2 * i.val + 0, by omega⟩ j)
          * val_main_v25 (F := Ideal) x6 (ix1 ⟨3072 + i.val, by omega⟩) := by
  rw [val_main_v186_apply, val_main_v185_apply, val_main_v183_apply, val_main_v182_apply, val_main_v167_apply,
    val_main_v184_apply, val_main_v169_apply, val_main_v168_apply, child_idx70, mask_idx70]
  rfl

theorem piece75 (i : Fin 4096) (j : Fin 128) :
    val_main_v191 (F := Ideal) x0 x1 x2 x3 x4 x5 x6 x7 x8 x9 x10 x11 x12 x13 x14 x15 x16 x17 x18 x19 x20 x21 (ix2 i j)
      = val_main_v164 (F := Ideal) x0 x1 x2 x3 x4 x5 x6 x7 x8 x9 x10 x11 x12 x13 x14 x15 x16 x17 x18 x19 x20 x21 (ix2 ⟨2 * i.val + 1, by omega⟩ j)
          * val_main_v26 (F := Ideal) x7 (ix1 ⟨3072 + i.val, by omega⟩) := by
  rw [val_main_v191_apply, val_main_v190_apply, val_main_v188_apply, val_main_v187_apply, val_main_v165_apply,
    val_main_v189_apply, val_main_v171_apply, val_main_v170_apply, child_idx75, mask_idx75]
  rfl

theorem piece80 (i : Fin 4096) (j : Fin 128) :
    val_main_v196 (F := Ideal) x0 x1 x2 x3 x4 x5 x6 x7 x8 x9 x10 x11 x12 x13 x14 x15 x16 x17 x18 x19 x20 x21 (ix2 i j)
      = val_main_v118 (F := Ideal) x0 x1 x2 x3 x4 x5 x6 x7 x8 x9 x10 x11 x12 x13 x14 x15 x16 x17 x18 x19 x20 x21 (ix2 ⟨2 * i.val + 1, by omega⟩ j)
          * val_main_v26 (F := Ideal) x7 (ix1 ⟨3072 + i.val, by omega⟩) := by
  rw [val_main_v196_apply, val_main_v195_apply, val_main_v193_apply, val_main_v192_apply, val_main_v166_apply,
    val_main_v194_apply, val_main_v171_apply, val_main_v170_apply, child_idx80, mask_idx80]
  rfl

theorem piece85 (i : Fin 4096) (j : Fin 128) :
    val_main_v201 (F := Ideal) x0 x1 x2 x3 x4 x5 x6 x7 x8 x9 x10 x11 x12 x13 x14 x15 x16 x17 x18 x19 x20 x21 (ix2 i j)
      = val_main_v133 (F := Ideal) x0 x1 x2 x3 x4 x5 x6 x7 x8 x9 x10 x11 x12 x13 x14 x15 x16 x17 x18 x19 x20 x21 (ix2 ⟨2 * i.val + 1, by omega⟩ j)
          * val_main_v26 (F := Ideal) x7 (ix1 ⟨3072 + i.val, by omega⟩) := by
  rw [val_main_v201_apply, val_main_v200_apply, val_main_v198_apply, val_main_v197_apply, val_main_v167_apply,
    val_main_v199_apply, val_main_v171_apply, val_main_v170_apply, child_idx85, mask_idx85]
  rfl

theorem emb86 (i : Fin 4096) (c : Fin 128) :
    val_main_v202 (F := Ideal) x0 x8 x9 (ix2 i c) = (embOfArrays x0 x1 x2 x3 x4 x5 x8 x9 x10 x11 x12 x13 x14 x15) ⟨3072 + i.val, by omega⟩ 0 c := by
  rw [val_main_v202_apply, emb_idx86]
  exact Emb.op_apply ..

theorem emb87 (i : Fin 4096) (c : Fin 128) :
    val_main_v203 (F := Ideal) x1 x10 x11 (ix2 i c) = (embOfArrays x0 x1 x2 x3 x4 x5 x8 x9 x10 x11 x12 x13 x14 x15) ⟨3072 + i.val, by omega⟩ 1 c := by
  rw [val_main_v203_apply, emb_idx87]
  exact Emb.feat_apply ..

theorem emb88 (i : Fin 4096) (c : Fin 128) :
    val_main_v204 (F := Ideal) x3 x14 x15 (ix2 i c) = (embOfArrays x0 x1 x2 x3 x4 x5 x8 x9 x10 x11 x12 x13 x14 x15) ⟨3072 + i.val, by omega⟩ 2 c := by
  rw [val_main_v204_apply, emb_idx88]
  exact Emb.c1_apply ..

theorem emb89 (i : Fin 4096) (c : Fin 128) :
    val_main_v205 (F := Ideal) x4 x14 x15 (ix2 i c) = (embOfArrays x0 x1 x2 x3 x4 x5 x8 x9 x10 x11 x12 x13 x14 x15) ⟨3072 + i.val, by omega⟩ 3 c := by
  rw [val_main_v205_apply, emb_idx89]
  exact Emb.c2_apply ..

theorem emb90 (i : Fin 4096) (c : Fin 128) :
    val_main_v206 (F := Ideal) x2 x5 x12 x13 (ix2 i c) = (embOfArrays x0 x1 x2 x3 x4 x5 x8 x9 x10 x11 x12 x13 x14 x15) ⟨3072 + i.val, by omega⟩ 4 c := by
  rw [val_main_v206_apply, emb_idx90]
  exact Emb.bm_apply ..

theorem cat_row (i : Fin 4096) (k : Fin 1408) :
    val_main_v207 (F := Ideal) x0 x1 x2 x3 x4 x5 x6 x7 x8 x9 x10 x11 x12 x13 x14 x15 x16 x17 x18 x19 x20 x21 (ix2 i k)
      = cat11 (fun q c => (![val_main_v202 (F := Ideal) x0 x8 x9,
          val_main_v203 (F := Ideal) x1 x10 x11,
          val_main_v204 (F := Ideal) x3 x14 x15,
          val_main_v205 (F := Ideal) x4 x14 x15,
          val_main_v206 (F := Ideal) x2 x5 x12 x13,
          val_main_v176 (F := Ideal) x0 x1 x2 x3 x4 x5 x6 x7 x8 x9 x10 x11 x12 x13 x14 x15 x16 x17 x18 x19 x20 x21,
          val_main_v191 (F := Ideal) x0 x1 x2 x3 x4 x5 x6 x7 x8 x9 x10 x11 x12 x13 x14 x15 x16 x17 x18 x19 x20 x21,
          val_main_v181 (F := Ideal) x0 x1 x2 x3 x4 x5 x6 x7 x8 x9 x10 x11 x12 x13 x14 x15 x16 x17 x18 x19 x20 x21,
          val_main_v186 (F := Ideal) x0 x1 x2 x3 x4 x5 x6 x7 x8 x9 x10 x11 x12 x13 x14 x15 x16 x17 x18 x19 x20 x21,
          val_main_v196 (F := Ideal) x0 x1 x2 x3 x4 x5 x6 x7 x8 x9 x10 x11 x12 x13 x14 x15 x16 x17 x18 x19 x20 x21,
          val_main_v201 (F := Ideal) x0 x1 x2 x3 x4 x5 x6 x7 x8 x9 x10 x11 x12 x13 x14 x15 x16 x17 x18 x19 x20 x21] : Fin 11 → S4096x128.Idx → EReal) q (ix2 i c)) k := by
  unfold val_main_v207
  exact concat11_apply _ _ _ _ _ _ _ _ _ _ _ _ i k

section
variable (hrep : ∀ (i : Fin 8192) (j : Fin 128), val_main_v164 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).rep i j)
  (hl : ∀ (i : Fin 8192) (j : Fin 128), val_main_v118 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).lrep i j)
  (hr : ∀ (i : Fin 8192) (j : Fin 128), val_main_v133 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).rrep i j)
include hrep hl hr

theorem pieces_eq (i : Fin 4096) (q : Fin 11) (c : Fin 128) :
    (![val_main_v202 (F := Ideal) x0 x8 x9,
        val_main_v203 (F := Ideal) x1 x10 x11,
        val_main_v204 (F := Ideal) x3 x14 x15,
        val_main_v205 (F := Ideal) x4 x14 x15,
        val_main_v206 (F := Ideal) x2 x5 x12 x13,
        val_main_v176 (F := Ideal) x0 x1 x2 x3 x4 x5 x6 x7 x8 x9 x10 x11 x12 x13 x14 x15 x16 x17 x18 x19 x20 x21,
        val_main_v191 (F := Ideal) x0 x1 x2 x3 x4 x5 x6 x7 x8 x9 x10 x11 x12 x13 x14 x15 x16 x17 x18 x19 x20 x21,
        val_main_v181 (F := Ideal) x0 x1 x2 x3 x4 x5 x6 x7 x8 x9 x10 x11 x12 x13 x14 x15 x16 x17 x18 x19 x20 x21,
        val_main_v186 (F := Ideal) x0 x1 x2 x3 x4 x5 x6 x7 x8 x9 x10 x11 x12 x13 x14 x15 x16 x17 x18 x19 x20 x21,
        val_main_v196 (F := Ideal) x0 x1 x2 x3 x4 x5 x6 x7 x8 x9 x10 x11 x12 x13 x14 x15 x16 x17 x18 x19 x20 x21,
        val_main_v201 (F := Ideal) x0 x1 x2 x3 x4 x5 x6 x7 x8 x9 x10 x11 x12 x13 x14 x15 x16 x17 x18 x19 x20 x21] : Fin 11 → S4096x128.Idx → EReal) q (ix2 i c)
      = pieces ((embOfArrays x0 x1 x2 x3 x4 x5 x8 x9 x10 x11 x12 x13 x14 x15) ⟨3072 + i.val, by omega⟩)
          (childPieces ((maskOfArray x6) ⟨3072 + i.val, by omega⟩) ((maskOfArray x7) ⟨3072 + i.val, by omega⟩)
            (pair (by norm_num) (level3 (embOfArrays x0 x1 x2 x3 x4 x5 x8 x9 x10 x11 x12 x13 x14 x15) (maskOfArray x6) (maskOfArray x7) (MLP3.ofArrays x16 x17 x18 x19 x20 x21)).rep i) (pair (by norm_num) (level3 (embOfArrays x0 x1 x2 x3 x4 x5 x8 x9 x10 x11 x12 x13 x14 x15) (maskOfArray x6) (maskOfArray x7) (MLP3.ofArrays x16 x17 x18 x19 x20 x21)).lrep i) (pair (by norm_num) (level3 (embOfArrays x0 x1 x2 x3 x4 x5 x8 x9 x10 x11 x12 x13 x14 x15) (maskOfArray x6) (maskOfArray x7) (MLP3.ofArrays x16 x17 x18 x19 x20 x21)).rrep i)) q c := by
  match q with
  | ⟨0, _⟩ => rw [sel0, pieces_emb0]; exact emb86 ..
  | ⟨1, _⟩ => rw [sel1, pieces_emb1]; exact emb87 ..
  | ⟨2, _⟩ => rw [sel2, pieces_emb2]; exact emb88 ..
  | ⟨3, _⟩ => rw [sel3, pieces_emb3]; exact emb89 ..
  | ⟨4, _⟩ => rw [sel4, pieces_emb4]; exact emb90 ..
  | ⟨5, _⟩ => rw [sel5, pieces_child5, piece60, hrep, Emb.lm_apply]; rfl
  | ⟨6, _⟩ => rw [sel6, pieces_child6, piece75, hrep, Emb.rm_apply]; rfl
  | ⟨7, _⟩ => rw [sel7, pieces_child7, piece65, hl, Emb.lm_apply]; rfl
  | ⟨8, _⟩ => rw [sel8, pieces_child8, piece70, hr, Emb.lm_apply]; rfl
  | ⟨9, _⟩ => rw [sel9, pieces_child9, piece80, hl, Emb.rm_apply]; rfl
  | ⟨10, _⟩ => rw [sel10, pieces_child10, piece85, hr, Emb.rm_apply]; rfl
  | ⟨n + 11, h⟩ => exact absurd h (by omega)

end

theorem layer1 (i : Fin 4096) (j : Fin 512) :
    val_main_v212 (F := Ideal) x0 x1 x2 x3 x4 x5 x6 x7 x8 x9 x10 x11 x12 x13 x14 x15 x16 x17 x18 x19 x20 x21 (ix2 i j)
      = relu (dense (fun k => val_main_v207 (F := Ideal) x0 x1 x2 x3 x4 x5 x6 x7 x8 x9 x10 x11 x12 x13 x14 x15 x16 x17 x18 x19 x20 x21 (ix2 i k)) (mat x16) (vec x17)) j := by
  rw [val_main_v212_apply, val_main_v211_apply, val_main_v208_apply, val_main_v210_apply, val_main_v209_apply,
    val_main_call9_v0_apply, val_main_call9_cst_apply]
  simp only [lidx92, ridx92, bias_idx92, Ideal.maximumf_def, Ideal.addf_def, Ideal.ofBits_def, Ideal.ofBits_zero_f32]
  rfl

theorem layer2 (i : Fin 4096) (j : Fin 256) :
    val_main_v217 (F := Ideal) x0 x1 x2 x3 x4 x5 x6 x7 x8 x9 x10 x11 x12 x13 x14 x15 x16 x17 x18 x19 x20 x21 (ix2 i j)
      = relu (dense (fun k => val_main_v212 (F := Ideal) x0 x1 x2 x3 x4 x5 x6 x7 x8 x9 x10 x11 x12 x13 x14 x15 x16 x17 x18 x19 x20 x21 (ix2 i k)) (mat x18) (vec x19)) j := by
  rw [val_main_v217_apply, val_main_v216_apply, val_main_v213_apply, val_main_v215_apply, val_main_v214_apply,
    val_main_call10_v0_apply, val_main_call10_cst_apply]
  simp only [lidx97, ridx97, bias_idx97, Ideal.maximumf_def, Ideal.addf_def, Ideal.ofBits_def, Ideal.ofBits_zero_f32]
  rfl

theorem layer3 (i : Fin 4096) (j : Fin 128) :
    val_main_v222 (F := Ideal) x0 x1 x2 x3 x4 x5 x6 x7 x8 x9 x10 x11 x12 x13 x14 x15 x16 x17 x18 x19 x20 x21 (ix2 i j)
      = relu (dense (fun k => val_main_v217 (F := Ideal) x0 x1 x2 x3 x4 x5 x6 x7 x8 x9 x10 x11 x12 x13 x14 x15 x16 x17 x18 x19 x20 x21 (ix2 i k)) (mat x20) (vec x21)) j := by
  rw [val_main_v222_apply, val_main_v221_apply, val_main_v218_apply, val_main_v220_apply, val_main_v219_apply,
    val_main_call11_v0_apply, val_main_call11_cst_apply]
  simp only [lidx102, ridx102, bias_idx102, Ideal.maximumf_def, Ideal.addf_def, Ideal.ofBits_def, Ideal.ofBits_zero_f32]
  rfl

section
variable (hrep : ∀ (i : Fin 8192) (j : Fin 128), val_main_v164 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).rep i j)
  (hl : ∀ (i : Fin 8192) (j : Fin 128), val_main_v118 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).lrep i j)
  (hr : ∀ (i : Fin 8192) (j : Fin 128), val_main_v133 (F := Ideal) x0 x1 x2 x3 x4 x5 x6 x7 x8 x9 x10 x11 x12 x13 x14 x15 x16 x17 x18 x19 x20 x21 (ix2 i j) = (level3 (embOfArrays x0 x1 x2 x3 x4 x5 x8 x9 x10 x11 x12 x13 x14 x15) (maskOfArray x6) (maskOfArray x7) (MLP3.ofArrays x16 x17 x18 x19 x20 x21)).rrep i j)
include hrep hl hr

theorem rep_eq (i : Fin 4096) (j : Fin 128) :
    val_main_v222 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).rep i j := by
  unfold level2
  rw [step_rep, layer3]
  simp only [layer2, layer1, cat_row, pieces_eq x0 x1 x2 x3 x4 x5 x6 x7 x8 x9 x10 x11 x12 x13 x14 x15 x16 x17 x18 x19 x20 x21 hrep hl hr]
  rfl

theorem lrep_eq (i : Fin 4096) (j : Fin 128) :
    val_main_v176 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).lrep i j := by
  unfold level2
  rw [step_lrep, piece60, hrep, Emb.lm_apply]

theorem rrep_eq (i : Fin 4096) (j : Fin 128) :
    val_main_v191 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).rrep i j := by
  unfold level2
  rw [step_rrep, piece75, hrep, Emb.rm_apply]

theorem level_eq :
    (∀ (i : Fin 4096) (j : Fin 128), val_main_v222 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).rep i j)
    ∧ (∀ (i : Fin 4096) (j : Fin 128), val_main_v176 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).lrep i j)
    ∧ (∀ (i : Fin 4096) (j : Fin 128), val_main_v191 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).rrep i j) :=
  ⟨rep_eq x0 x1 x2 x3 x4 x5 x6 x7 x8 x9 x10 x11 x12 x13 x14 x15 x16 x17 x18 x19 x20 x21 hrep hl hr, lrep_eq x0 x1 x2 x3 x4 x5 x6 x7 x8 x9 x10 x11 x12 x13 x14 x15 x16 x17 x18 x19 x20 x21 hrep hl hr, rrep_eq x0 x1 x2 x3 x4 x5 x6 x7 x8 x9 x10 x11 x12 x13 x14 x15 x16 x17 x18 x19 x20 x21 hrep hl hr⟩

end

end

end Cert.ReferenceIdeal.L2

end
-- ==== Proof.RefL1.lean ====
import proofs.«410031_j84061099917532_3_alg».proof.Proof.RefBase
import proofs.«410031_j84061099917532_3_alg».proof.Proof.RefEmb
import proofs.«410031_j84061099917532_3_alg».proof.Proof.RefLevelLib

noncomputable section

namespace Cert.ReferenceIdeal.L1

open Idealize.ShloMosaic Cert.ReferenceIdeal Cert.ReferenceIdeal.Stages
open TreeNN ValueIdx

theorem child_idx60 (y : S2048x128.Idx) :
    idx_main_v223 (idx_main_v230 (idx_main_v231 (idx_main_v234 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx60 (y : S2048x128.Idx) :
    idx_main_v226 (idx_main_v227 (idx_main_v232 (idx_main_v234 y)))
      = ix1 ⟨1024 + (y 0).val, by have := idx2_lt0 y; omega⟩ := by
  have h0 := idx2_lt0 y
  have h1 := idx2_lt1 y
  funext a
  match a with
  | ⟨0, _⟩ => refine Fin.ext ?_; dsimp only; omega

theorem child_idx65 (y : S2048x128.Idx) :
    idx_main_v224 (idx_main_v235 (idx_main_v236 (idx_main_v239 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx65 (y : S2048x128.Idx) :
    idx_main_v226 (idx_main_v227 (idx_main_v237 (idx_main_v239 y)))
      = ix1 ⟨1024 + (y 0).val, by have := idx2_lt0 y; omega⟩ := by
  have h0 := idx2_lt0 y
  have h1 := idx2_lt1 y
  funext a
  match a with
  | ⟨0, _⟩ => refine Fin.ext ?_; dsimp only; omega

theorem child_idx70 (y : S2048x128.Idx) :
    idx_main_v225 (idx_main_v240 (idx_main_v241 (idx_main_v244 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx70 (y : S2048x128.Idx) :
    idx_main_v226 (idx_main_v227 (idx_main_v242 (idx_main_v244 y)))
      = ix1 ⟨1024 + (y 0).val, by have := idx2_lt0 y; omega⟩ := by
  have h0 := idx2_lt0 y
  have h1 := idx2_lt1 y
  funext a
  match a with
  | ⟨0, _⟩ => refine Fin.ext ?_; dsimp only; omega

theorem child_idx75 (y : S2048x128.Idx) :
    idx_main_v223 (idx_main_v245 (idx_main_v246 (idx_main_v249 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx75 (y : S2048x128.Idx) :
    idx_main_v228 (idx_main_v229 (idx_main_v247 (idx_main_v249 y)))
      = ix1 ⟨1024 + (y 0).val, by have := idx2_lt0 y; omega⟩ := by
  have h0 := idx2_lt0 y
  have h1 := idx2_lt1 y
  funext a
  match a with
  | ⟨0, _⟩ => refine Fin.ext ?_; dsimp only; omega

theorem child_idx80 (y : S2048x128.Idx) :
    idx_main_v224 (idx_main_v250 (idx_main_v251 (idx_main_v254 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx80 (y : S2048x128.Idx) :
    idx_main_v228 (idx_main_v229 (idx_main_v252 (idx_main_v254 y)))
      = ix1 ⟨1024 + (y 0).val, by have := idx2_lt0 y; omega⟩ := by
  have h0 := idx2_lt0 y
  have h1 := idx2_lt1 y
  funext a
  match a with
  | ⟨0, _⟩ => refine Fin.ext ?_; dsimp only; omega

theorem child_idx85 (y : S2048x128.Idx) :
    idx_main_v225 (idx_main_v255 (idx_main_v256 (idx_main_v259 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx85 (y : S2048x128.Idx) :
    idx_main_v228 (idx_main_v229 (idx_main_v257 (idx_main_v259 y)))
      = ix1 ⟨1024 + (y 0).val, by have := idx2_lt0 y; omega⟩ := by
  have h0 := idx2_lt0 y
  have h1 := idx2_lt1 y
  funext a
  match a with
  | ⟨0, _⟩ => refine Fin.ext ?_; dsimp only; omega
theorem emb_idx86 (i : Fin 2048) (c : Fin 128) : idx_main_v260 (ix2 i c) = ix2 ⟨1024 + i.val, by omega⟩ c :=
  funext fun a => Fin.ext (by match a with | ⟨0, _⟩ => rfl | ⟨1, _⟩ => rfl)
theorem emb_idx87 (i : Fin 2048) (c : Fin 128) : idx_main_v261 (ix2 i c) = ix2 ⟨1024 + i.val, by omega⟩ c :=
  funext fun a => Fin.ext (by match a with | ⟨0, _⟩ => rfl | ⟨1, _⟩ => rfl)
theorem emb_idx88 (i : Fin 2048) (c : Fin 128) : idx_main_v262 (ix2 i c) = ix2 ⟨1024 + i.val, by omega⟩ c :=
  funext fun a => Fin.ext (by match a with | ⟨0, _⟩ => rfl | ⟨1, _⟩ => rfl)
theorem emb_idx89 (i : Fin 2048) (c : Fin 128) : idx_main_v263 (ix2 i c) = ix2 ⟨1024 + i.val, by omega⟩ c :=
  funext fun a => Fin.ext (by match a with | ⟨0, _⟩ => rfl | ⟨1, _⟩ => rfl)
theorem emb_idx90 (i : Fin 2048) (c : Fin 128) : idx_main_v264 (ix2 i c) = ix2 ⟨1024 + i.val, by omega⟩ c :=
  funext fun a => Fin.ext (by match a with | ⟨0, _⟩ => rfl | ⟨1, _⟩ => rfl)
theorem lidx92 (i : Fin 2048) (j : Fin 512) (k : Fin 1408) : lidx_main_v266 (ix2 i j) k = ix2 i k :=
  funext fun a => Fin.ext (by match a with | ⟨0, _⟩ => rfl | ⟨1, _⟩ => rfl)
theorem ridx92 (i : Fin 2048) (j : Fin 512) (k : Fin 1408) : ridx_main_v266 (ix2 i j) k = ix2 k j :=
  funext fun a => Fin.ext (by match a with | ⟨0, _⟩ => rfl | ⟨1, _⟩ => rfl)
theorem bias_idx92 (i : Fin 2048) (j : Fin 512) : idx_main_v267 (idx_main_v268 (ix2 i j)) = ix1 j :=
  funext fun a => Fin.ext (by match a with | ⟨0, _⟩ => rfl)
theorem lidx97 (i : Fin 2048) (j : Fin 256) (k : Fin 512) : lidx_main_v271 (ix2 i j) k = ix2 i k :=
  funext fun a => Fin.ext (by match a with | ⟨0, _⟩ => rfl | ⟨1, _⟩ => rfl)
theorem ridx97 (i : Fin 2048) (j : Fin 256) (k : Fin 512) : ridx_main_v271 (ix2 i j) k = ix2 k j :=
  funext fun a => Fin.ext (by match a with | ⟨0, _⟩ => rfl | ⟨1, _⟩ => rfl)
theorem bias_idx97 (i : Fin 2048) (j : Fin 256) : idx_main_v272 (idx_main_v273 (ix2 i j)) = ix1 j :=
  funext fun a => Fin.ext (by match a with | ⟨0, _⟩ => rfl)
theorem lidx102 (i : Fin 2048) (j : Fin 128) (k : Fin 256) : lidx_main_v276 (ix2 i j) k = ix2 i k :=
  funext fun a => Fin.ext (by match a with | ⟨0, _⟩ => rfl | ⟨1, _⟩ => rfl)
theorem ridx102 (i : Fin 2048) (j : Fin 128) (k : Fin 256) : ridx_main_v276 (ix2 i j) k = ix2 k j :=
  funext fun a => Fin.ext (by match a with | ⟨0, _⟩ => rfl | ⟨1, _⟩ => rfl)
theorem bias_idx102 (i : Fin 2048) (j : Fin 128) : idx_main_v277 (idx_main_v278 (ix2 i j)) = ix1 j :=
  funext fun a => Fin.ext (by match a with | ⟨0, _⟩ => rfl)

section
variable (x0 x1 : (⟨S64512x32, .f32⟩ : BufTy).Contents (Elt Ideal))
  (x2 : (⟨S64512x1000, .f32⟩ : BufTy).Contents (Elt Ideal))
  (x3 x4 : (⟨S64512x4x64, .f32⟩ : BufTy).Contents (Elt Ideal))
  (x5 : (⟨S64512, .f32⟩ : BufTy).Contents (Elt Ideal))
  (x6 x7 : (⟨S64512, .i32⟩ : BufTy).Contents (Elt Ideal))
  (x8 : (⟨S32x128, .f32⟩ : BufTy).Contents (Elt Ideal))
  (x9 : (⟨S128, .f32⟩ : BufTy).Contents (Elt Ideal))
  (x10 : (⟨S32x128, .f32⟩ : BufTy).Contents (Elt Ideal))
  (x11 : (⟨S128, .f32⟩ : BufTy).Contents (Elt Ideal))
  (x12 : (⟨S1000x128, .f32⟩ : BufTy).Contents (Elt Ideal))
  (x13 : (⟨S128, .f32⟩ : BufTy).Contents (Elt Ideal))
  (x14 : (⟨S64x128, .f32⟩ : BufTy).Contents (Elt Ideal))
  (x15 : (⟨S128, .f32⟩ : BufTy).Contents (Elt Ideal))
  (x16 : (⟨S1408x512, .f32⟩ : BufTy).Contents (Elt Ideal))
  (x17 : (⟨S512, .f32⟩ : BufTy).Contents (Elt Ideal))
  (x18 : (⟨S512x256, .f32⟩ : BufTy).Contents (Elt Ideal))
  (x19 : (⟨S256, .f32⟩ : BufTy).Contents (Elt Ideal))
  (x20 : (⟨S256x128, .f32⟩ : BufTy).Contents (Elt Ideal))
  (x21 : (⟨S128, .f32⟩ : BufTy).Contents (Elt Ideal))

theorem piece60 (i : Fin 2048) (j : Fin 128) :
    val_main_v234 (F := Ideal) x0 x1 x2 x3 x4 x5 x6 x7 x8 x9 x10 x11 x12 x13 x14 x15 x16 x17 x18 x19 x20 x21 (ix2 i j)
      = val_main_v222 (F := Ideal) x0 x1 x2 x3 x4 x5 x6 x7 x8 x9 x10 x11 x12 x13 x14 x15 x16 x17 x18 x19 x20 x21 (ix2 ⟨2 * i.val + 0, by omega⟩ j)
          * val_main_v25 (F := Ideal) x6 (ix1 ⟨1024 + i.val, by omega⟩) := by
  rw [val_main_v234_apply, val_main_v233_apply, val_main_v231_apply, val_main_v230_apply, val_main_v223_apply,
    val_main_v232_apply, val_main_v227_apply, val_main_v226_apply, child_idx60, mask_idx60]
  rfl

theorem piece65 (i : Fin 2048) (j : Fin 128) :
    val_main_v239 (F := Ideal) x0 x1 x2 x3 x4 x5 x6 x7 x8 x9 x10 x11 x12 x13 x14 x15 x16 x17 x18 x19 x20 x21 (ix2 i j)
      = val_main_v176 (F := Ideal) x0 x1 x2 x3 x4 x5 x6 x7 x8 x9 x10 x11 x12 x13 x14 x15 x16 x17 x18 x19 x20 x21 (ix2 ⟨2 * i.val + 0, by omega⟩ j)
          * val_main_v25 (F := Ideal) x6 (ix1 ⟨1024 + i.val, by omega⟩) := by
  rw [val_main_v239_apply, val_main_v238_apply, val_main_v236_apply, val_main_v235_apply, val_main_v224_apply,
    val_main_v237_apply, val_main_v227_apply, val_main_v226_apply, child_idx65, mask_idx65]
  rfl

theorem piece70 (i : Fin 2048) (j : Fin 128) :
    val_main_v244 (F := Ideal) x0 x1 x2 x3 x4 x5 x6 x7 x8 x9 x10 x11 x12 x13 x14 x15 x16 x17 x18 x19 x20 x21 (ix2 i j)
      = val_main_v191 (F := Ideal) x0 x1 x2 x3 x4 x5 x6 x7 x8 x9 x10 x11 x12 x13 x14 x15 x16 x17 x18 x19 x20 x21 (ix2 ⟨2 * i.val + 0, by omega⟩ j)
          * val_main_v25 (F := Ideal) x6 (ix1 ⟨1024 + i.val, by omega⟩) := by
  rw [val_main_v244_apply, val_main_v243_apply, val_main_v241_apply, val_main_v240_apply, val_main_v225_apply,
    val_main_v242_apply, val_main_v227_apply, val_main_v226_apply, child_idx70, mask_idx70]
  rfl

theorem piece75 (i : Fin 2048) (j : Fin 128) :
    val_main_v249 (F := Ideal) x0 x1 x2 x3 x4 x5 x6 x7 x8 x9 x10 x11 x12 x13 x14 x15 x16 x17 x18 x19 x20 x21 (ix2 i j)
      = val_main_v222 (F := Ideal) x0 x1 x2 x3 x4 x5 x6 x7 x8 x9 x10 x11 x12 x13 x14 x15 x16 x17 x18 x19 x20 x21 (ix2 ⟨2 * i.val + 1, by omega⟩ j)
          * val_main_v26 (F := Ideal) x7 (ix1 ⟨1024 + i.val, by omega⟩) := by
  rw [val_main_v249_apply, val_main_v248_apply, val_main_v246_apply, val_main_v245_apply, val_main_v223_apply,
    val_main_v247_apply, val_main_v229_apply, val_main_v228_apply, child_idx75, mask_idx75]
  rfl

theorem piece80 (i : Fin 2048) (j : Fin 128) :
    val_main_v254 (F := Ideal) x0 x1 x2 x3 x4 x5 x6 x7 x8 x9 x10 x11 x12 x13 x14 x15 x16 x17 x18 x19 x20 x21 (ix2 i j)
      = val_main_v176 (F := Ideal) x0 x1 x2 x3 x4 x5 x6 x7 x8 x9 x10 x11 x12 x13 x14 x15 x16 x17 x18 x19 x20 x21 (ix2 ⟨2 * i.val + 1, by omega⟩ j)
          * val_main_v26 (F := Ideal) x7 (ix1 ⟨1024 + i.val, by omega⟩) := by
  rw [val_main_v254_apply, val_main_v253_apply, val_main_v251_apply, val_main_v250_apply, val_main_v224_apply,
    val_main_v252_apply, val_main_v229_apply, val_main_v228_apply, child_idx80, mask_idx80]
  rfl

theorem piece85 (i : Fin 2048) (j : Fin 128) :
    val_main_v259 (F := Ideal) x0 x1 x2 x3 x4 x5 x6 x7 x8 x9 x10 x11 x12 x13 x14 x15 x16 x17 x18 x19 x20 x21 (ix2 i j)
      = val_main_v191 (F := Ideal) x0 x1 x2 x3 x4 x5 x6 x7 x8 x9 x10 x11 x12 x13 x14 x15 x16 x17 x18 x19 x20 x21 (ix2 ⟨2 * i.val + 1, by omega⟩ j)
          * val_main_v26 (F := Ideal) x7 (ix1 ⟨1024 + i.val, by omega⟩) := by
  rw [val_main_v259_apply, val_main_v258_apply, val_main_v256_apply, val_main_v255_apply, val_main_v225_apply,
    val_main_v257_apply, val_main_v229_apply, val_main_v228_apply, child_idx85, mask_idx85]
  rfl

theorem emb86 (i : Fin 2048) (c : Fin 128) :
    val_main_v260 (F := Ideal) x0 x8 x9 (ix2 i c) = (embOfArrays x0 x1 x2 x3 x4 x5 x8 x9 x10 x11 x12 x13 x14 x15) ⟨1024 + i.val, by omega⟩ 0 c := by
  rw [val_main_v260_apply, emb_idx86]
  exact Emb.op_apply ..

theorem emb87 (i : Fin 2048) (c : Fin 128) :
    val_main_v261 (F := Ideal) x1 x10 x11 (ix2 i c) = (embOfArrays x0 x1 x2 x3 x4 x5 x8 x9 x10 x11 x12 x13 x14 x15) ⟨1024 + i.val, by omega⟩ 1 c := by
  rw [val_main_v261_apply, emb_idx87]
  exact Emb.feat_apply ..

theorem emb88 (i : Fin 2048) (c : Fin 128) :
    val_main_v262 (F := Ideal) x3 x14 x15 (ix2 i c) = (embOfArrays x0 x1 x2 x3 x4 x5 x8 x9 x10 x11 x12 x13 x14 x15) ⟨1024 + i.val, by omega⟩ 2 c := by
  rw [val_main_v262_apply, emb_idx88]
  exact Emb.c1_apply ..

theorem emb89 (i : Fin 2048) (c : Fin 128) :
    val_main_v263 (F := Ideal) x4 x14 x15 (ix2 i c) = (embOfArrays x0 x1 x2 x3 x4 x5 x8 x9 x10 x11 x12 x13 x14 x15) ⟨1024 + i.val, by omega⟩ 3 c := by
  rw [val_main_v263_apply, emb_idx89]
  exact Emb.c2_apply ..

theorem emb90 (i : Fin 2048) (c : Fin 128) :
    val_main_v264 (F := Ideal) x2 x5 x12 x13 (ix2 i c) = (embOfArrays x0 x1 x2 x3 x4 x5 x8 x9 x10 x11 x12 x13 x14 x15) ⟨1024 + i.val, by omega⟩ 4 c := by
  rw [val_main_v264_apply, emb_idx90]
  exact Emb.bm_apply ..

theorem cat_row (i : Fin 2048) (k : Fin 1408) :
    val_main_v265 (F := Ideal) x0 x1 x2 x3 x4 x5 x6 x7 x8 x9 x10 x11 x12 x13 x14 x15 x16 x17 x18 x19 x20 x21 (ix2 i k)
      = cat11 (fun q c => (![val_main_v260 (F := Ideal) x0 x8 x9,
          val_main_v261 (F := Ideal) x1 x10 x11,
          val_main_v262 (F := Ideal) x3 x14 x15,
          val_main_v263 (F := Ideal) x4 x14 x15,
          val_main_v264 (F := Ideal) x2 x5 x12 x13,
          val_main_v234 (F := Ideal) x0 x1 x2 x3 x4 x5 x6 x7 x8 x9 x10 x11 x12 x13 x14 x15 x16 x17 x18 x19 x20 x21,
          val_main_v249 (F := Ideal) x0 x1 x2 x3 x4 x5 x6 x7 x8 x9 x10 x11 x12 x13 x14 x15 x16 x17 x18 x19 x20 x21,
          val_main_v239 (F := Ideal) x0 x1 x2 x3 x4 x5 x6 x7 x8 x9 x10 x11 x12 x13 x14 x15 x16 x17 x18 x19 x20 x21,
          val_main_v244 (F := Ideal) x0 x1 x2 x3 x4 x5 x6 x7 x8 x9 x10 x11 x12 x13 x14 x15 x16 x17 x18 x19 x20 x21,
          val_main_v254 (F := Ideal) x0 x1 x2 x3 x4 x5 x6 x7 x8 x9 x10 x11 x12 x13 x14 x15 x16 x17 x18 x19 x20 x21,
          val_main_v259 (F := Ideal) x0 x1 x2 x3 x4 x5 x6 x7 x8 x9 x10 x11 x12 x13 x14 x15 x16 x17 x18 x19 x20 x21] : Fin 11 → S2048x128.Idx → EReal) q (ix2 i c)) k := by
  unfold val_main_v265
  exact concat11_apply _ _ _ _ _ _ _ _ _ _ _ _ i k

section
variable (hrep : ∀ (i : Fin 4096) (j : Fin 128), val_main_v222 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).rep i j)
  (hl : ∀ (i : Fin 4096) (j : Fin 128), val_main_v176 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).lrep i j)
  (hr : ∀ (i : Fin 4096) (j : Fin 128), val_main_v191 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).rrep i j)
include hrep hl hr

theorem pieces_eq (i : Fin 2048) (q : Fin 11) (c : Fin 128) :
    (![val_main_v260 (F := Ideal) x0 x8 x9,
        val_main_v261 (F := Ideal) x1 x10 x11,
        val_main_v262 (F := Ideal) x3 x14 x15,
        val_main_v263 (F := Ideal) x4 x14 x15,
        val_main_v264 (F := Ideal) x2 x5 x12 x13,
        val_main_v234 (F := Ideal) x0 x1 x2 x3 x4 x5 x6 x7 x8 x9 x10 x11 x12 x13 x14 x15 x16 x17 x18 x19 x20 x21,
        val_main_v249 (F := Ideal) x0 x1 x2 x3 x4 x5 x6 x7 x8 x9 x10 x11 x12 x13 x14 x15 x16 x17 x18 x19 x20 x21,
        val_main_v239 (F := Ideal) x0 x1 x2 x3 x4 x5 x6 x7 x8 x9 x10 x11 x12 x13 x14 x15 x16 x17 x18 x19 x20 x21,
        val_main_v244 (F := Ideal) x0 x1 x2 x3 x4 x5 x6 x7 x8 x9 x10 x11 x12 x13 x14 x15 x16 x17 x18 x19 x20 x21,
        val_main_v254 (F := Ideal) x0 x1 x2 x3 x4 x5 x6 x7 x8 x9 x10 x11 x12 x13 x14 x15 x16 x17 x18 x19 x20 x21,
        val_main_v259 (F := Ideal) x0 x1 x2 x3 x4 x5 x6 x7 x8 x9 x10 x11 x12 x13 x14 x15 x16 x17 x18 x19 x20 x21] : Fin 11 → S2048x128.Idx → EReal) q (ix2 i c)
      = pieces ((embOfArrays x0 x1 x2 x3 x4 x5 x8 x9 x10 x11 x12 x13 x14 x15) ⟨1024 + i.val, by omega⟩)
          (childPieces ((maskOfArray x6) ⟨1024 + i.val, by omega⟩) ((maskOfArray x7) ⟨1024 + i.val, by omega⟩)
            (pair (by norm_num) (level2 (embOfArrays x0 x1 x2 x3 x4 x5 x8 x9 x10 x11 x12 x13 x14 x15) (maskOfArray x6) (maskOfArray x7) (MLP3.ofArrays x16 x17 x18 x19 x20 x21)).rep i) (pair (by norm_num) (level2 (embOfArrays x0 x1 x2 x3 x4 x5 x8 x9 x10 x11 x12 x13 x14 x15) (maskOfArray x6) (maskOfArray x7) (MLP3.ofArrays x16 x17 x18 x19 x20 x21)).lrep i) (pair (by norm_num) (level2 (embOfArrays x0 x1 x2 x3 x4 x5 x8 x9 x10 x11 x12 x13 x14 x15) (maskOfArray x6) (maskOfArray x7) (MLP3.ofArrays x16 x17 x18 x19 x20 x21)).rrep i)) q c := by
  match q with
  | ⟨0, _⟩ => rw [sel0, pieces_emb0]; exact emb86 ..
  | ⟨1, _⟩ => rw [sel1, pieces_emb1]; exact emb87 ..
  | ⟨2, _⟩ => rw [sel2, pieces_emb2]; exact emb88 ..
  | ⟨3, _⟩ => rw [sel3, pieces_emb3]; exact emb89 ..
  | ⟨4, _⟩ => rw [sel4, pieces_emb4]; exact emb90 ..
  | ⟨5, _⟩ => rw [sel5, pieces_child5, piece60, hrep, Emb.lm_apply]; rfl
  | ⟨6, _⟩ => rw [sel6, pieces_child6, piece75, hrep, Emb.rm_apply]; rfl
  | ⟨7, _⟩ => rw [sel7, pieces_child7, piece65, hl, Emb.lm_apply]; rfl
  | ⟨8, _⟩ => rw [sel8, pieces_child8, piece70, hr, Emb.lm_apply]; rfl
  | ⟨9, _⟩ => rw [sel9, pieces_child9, piece80, hl, Emb.rm_apply]; rfl
  | ⟨10, _⟩ => rw [sel10, pieces_child10, piece85, hr, Emb.rm_apply]; rfl
  | ⟨n + 11, h⟩ => exact absurd h (by omega)

end

theorem layer1 (i : Fin 2048) (j : Fin 512) :
    val_main_v270 (F := Ideal) x0 x1 x2 x3 x4 x5 x6 x7 x8 x9 x10 x11 x12 x13 x14 x15 x16 x17 x18 x19 x20 x21 (ix2 i j)
      = relu (dense (fun k => val_main_v265 (F := Ideal) x0 x1 x2 x3 x4 x5 x6 x7 x8 x9 x10 x11 x12 x13 x14 x15 x16 x17 x18 x19 x20 x21 (ix2 i k)) (mat x16) (vec x17)) j := by
  rw [val_main_v270_apply, val_main_v269_apply, val_main_v266_apply, val_main_v268_apply, val_main_v267_apply,
    val_main_call12_v0_apply, val_main_call12_cst_apply]
  simp only [lidx92, ridx92, bias_idx92, Ideal.maximumf_def, Ideal.addf_def, Ideal.ofBits_def, Ideal.ofBits_zero_f32]
  rfl

theorem layer2 (i : Fin 2048) (j : Fin 256) :
    val_main_v275 (F := Ideal) x0 x1 x2 x3 x4 x5 x6 x7 x8 x9 x10 x11 x12 x13 x14 x15 x16 x17 x18 x19 x20 x21 (ix2 i j)
      = relu (dense (fun k => val_main_v270 (F := Ideal) x0 x1 x2 x3 x4 x5 x6 x7 x8 x9 x10 x11 x12 x13 x14 x15 x16 x17 x18 x19 x20 x21 (ix2 i k)) (mat x18) (vec x19)) j := by
  rw [val_main_v275_apply, val_main_v274_apply, val_main_v271_apply, val_main_v273_apply, val_main_v272_apply,
    val_main_call13_v0_apply, val_main_call13_cst_apply]
  simp only [lidx97, ridx97, bias_idx97, Ideal.maximumf_def, Ideal.addf_def, Ideal.ofBits_def, Ideal.ofBits_zero_f32]
  rfl

theorem layer3 (i : Fin 2048) (j : Fin 128) :
    val_main_v280 (F := Ideal) x0 x1 x2 x3 x4 x5 x6 x7 x8 x9 x10 x11 x12 x13 x14 x15 x16 x17 x18 x19 x20 x21 (ix2 i j)
      = relu (dense (fun k => val_main_v275 (F := Ideal) x0 x1 x2 x3 x4 x5 x6 x7 x8 x9 x10 x11 x12 x13 x14 x15 x16 x17 x18 x19 x20 x21 (ix2 i k)) (mat x20) (vec x21)) j := by
  rw [val_main_v280_apply, val_main_v279_apply, val_main_v276_apply, val_main_v278_apply, val_main_v277_apply,
    val_main_call14_v0_apply, val_main_call14_cst_apply]
  simp only [lidx102, ridx102, bias_idx102, Ideal.maximumf_def, Ideal.addf_def, Ideal.ofBits_def, Ideal.ofBits_zero_f32]
  rfl

section
variable (hrep : ∀ (i : Fin 4096) (j : Fin 128), val_main_v222 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).rep i j)
  (hl : ∀ (i : Fin 4096) (j : Fin 128), val_main_v176 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).lrep i j)
  (hr : ∀ (i : Fin 4096) (j : Fin 128), val_main_v191 (F := Ideal) x0 x1 x2 x3 x4 x5 x6 x7 x8 x9 x10 x11 x12 x13 x14 x15 x16 x17 x18 x19 x20 x21 (ix2 i j) = (level2 (embOfArrays x0 x1 x2 x3 x4 x5 x8 x9 x10 x11 x12 x13 x14 x15) (maskOfArray x6) (maskOfArray x7) (MLP3.ofArrays x16 x17 x18 x19 x20 x21)).rrep i j)
include hrep hl hr

theorem rep_eq (i : Fin 2048) (j : Fin 128) :
    val_main_v280 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).rep i j := by
  unfold level1
  rw [step_rep, layer3]
  simp only [layer2, layer1, cat_row, pieces_eq x0 x1 x2 x3 x4 x5 x6 x7 x8 x9 x10 x11 x12 x13 x14 x15 x16 x17 x18 x19 x20 x21 hrep hl hr]
  rfl

theorem lrep_eq (i : Fin 2048) (j : Fin 128) :
    val_main_v234 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).lrep i j := by
  unfold level1
  rw [step_lrep, piece60, hrep, Emb.lm_apply]

theorem rrep_eq (i : Fin 2048) (j : Fin 128) :
    val_main_v249 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).rrep i j := by
  unfold level1
  rw [step_rrep, piece75, hrep, Emb.rm_apply]

theorem level_eq :
    (∀ (i : Fin 2048) (j : Fin 128), val_main_v280 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).rep i j)
    ∧ (∀ (i : Fin 2048) (j : Fin 128), val_main_v234 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).lrep i j)
    ∧ (∀ (i : Fin 2048) (j : Fin 128), val_main_v249 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).rrep i j) :=
  ⟨rep_eq x0 x1 x2 x3 x4 x5 x6 x7 x8 x9 x10 x11 x12 x13 x14 x15 x16 x17 x18 x19 x20 x21 hrep hl hr, lrep_eq x0 x1 x2 x3 x4 x5 x6 x7 x8 x9 x10 x11 x12 x13 x14 x15 x16 x17 x18 x19 x20 x21 hrep hl hr, rrep_eq x0 x1 x2 x3 x4 x5 x6 x7 x8 x9 x10 x11 x12 x13 x14 x15 x16 x17 x18 x19 x20 x21 hrep hl hr⟩

end

end

end Cert.ReferenceIdeal.L1

end
-- ==== Proof.RefL0.lean ====
import proofs.«410031_j84061099917532_3_alg».proof.Proof.RefBase
import proofs.«410031_j84061099917532_3_alg».proof.Proof.RefEmb
import proofs.«410031_j84061099917532_3_alg».proof.Proof.RefLevelLib

noncomputable section

namespace Cert.ReferenceIdeal.L0

open Idealize.ShloMosaic Cert.ReferenceIdeal Cert.ReferenceIdeal.Stages
open TreeNN ValueIdx

theorem child_idx60 (y : S1024x128.Idx) :
    idx_main_v281 (idx_main_v288 (idx_main_v289 (idx_main_v292 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx60 (y : S1024x128.Idx) :
    idx_main_v284 (idx_main_v285 (idx_main_v290 (idx_main_v292 y)))
      = ix1 ⟨0 + (y 0).val, by have := idx2_lt0 y; omega⟩ := by
  have h0 := idx2_lt0 y
  have h1 := idx2_lt1 y
  funext a
  match a with
  | ⟨0, _⟩ => refine Fin.ext ?_; dsimp only; omega

theorem child_idx65 (y : S1024x128.Idx) :
    idx_main_v282 (idx_main_v293 (idx_main_v294 (idx_main_v297 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx65 (y : S1024x128.Idx) :
    idx_main_v284 (idx_main_v285 (idx_main_v295 (idx_main_v297 y)))
      = ix1 ⟨0 + (y 0).val, by have := idx2_lt0 y; omega⟩ := by
  have h0 := idx2_lt0 y
  have h1 := idx2_lt1 y
  funext a
  match a with
  | ⟨0, _⟩ => refine Fin.ext ?_; dsimp only; omega

theorem child_idx70 (y : S1024x128.Idx) :
    idx_main_v283 (idx_main_v298 (idx_main_v299 (idx_main_v302 y)))
      = ix2 ⟨2 * (y 0).val + 0, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx70 (y : S1024x128.Idx) :
    idx_main_v284 (idx_main_v285 (idx_main_v300 (idx_main_v302 y)))
      = ix1 ⟨0 + (y 0).val, by have := idx2_lt0 y; omega⟩ := by
  have h0 := idx2_lt0 y
  have h1 := idx2_lt1 y
  funext a
  match a with
  | ⟨0, _⟩ => refine Fin.ext ?_; dsimp only; omega

theorem child_idx75 (y : S1024x128.Idx) :
    idx_main_v281 (idx_main_v303 (idx_main_v304 (idx_main_v307 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx75 (y : S1024x128.Idx) :
    idx_main_v286 (idx_main_v287 (idx_main_v305 (idx_main_v307 y)))
      = ix1 ⟨0 + (y 0).val, by have := idx2_lt0 y; omega⟩ := by
  have h0 := idx2_lt0 y
  have h1 := idx2_lt1 y
  funext a
  match a with
  | ⟨0, _⟩ => refine Fin.ext ?_; dsimp only; omega

theorem child_idx80 (y : S1024x128.Idx) :
    idx_main_v282 (idx_main_v308 (idx_main_v309 (idx_main_v312 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx80 (y : S1024x128.Idx) :
    idx_main_v286 (idx_main_v287 (idx_main_v310 (idx_main_v312 y)))
      = ix1 ⟨0 + (y 0).val, by have := idx2_lt0 y; omega⟩ := by
  have h0 := idx2_lt0 y
  have h1 := idx2_lt1 y
  funext a
  match a with
  | ⟨0, _⟩ => refine Fin.ext ?_; dsimp only; omega

theorem child_idx85 (y : S1024x128.Idx) :
    idx_main_v283 (idx_main_v313 (idx_main_v314 (idx_main_v317 y)))
      = ix2 ⟨2 * (y 0).val + 1, by have := idx2_lt0 y; omega⟩ ⟨(y 1).val, idx2_lt1 y⟩ := by
  have h0 := idx2_lt0 y
  have h1 := idx2_lt1 y
  funext a
  match a with
  | ⟨0, _⟩ => refine Fin.ext ?_; dsimp only; omega
  | ⟨1, _⟩ => refine Fin.ext ?_; dsimp only; omega

theorem mask_idx85 (y : S1024x128.Idx) :
    idx_main_v286 (idx_main_v287 (idx_main_v315 (idx_main_v317 y)))
      = ix1 ⟨0 + (y 0).val, by have := idx2_lt0 y; omega⟩ := by
  have h0 := idx2_lt0 y
  have h1 := idx2_lt1 y
  funext a
  match a with
  | ⟨0, _⟩ => refine Fin.ext ?_; dsimp only; omega
theorem emb_idx86 (i : Fin 1024) (c : Fin 128) : idx_main_v318 (ix2 i c) = ix2 ⟨0 + i.val, by omega⟩ c :=
  funext fun a => Fin.ext (by match a with | ⟨0, _⟩ => exact (Nat.zero_add i.val).symm | ⟨1, _⟩ => rfl)
theorem emb_idx87 (i : Fin 1024) (c : Fin 128) : idx_main_v319 (ix2 i c) = ix2 ⟨0 + i.val, by omega⟩ c :=
  funext fun a => Fin.ext (by match a with | ⟨0, _⟩ => exact (Nat.zero_add i.val).symm | ⟨1, _⟩ => rfl)
theorem emb_idx88 (i : Fin 1024) (c : Fin 128) : idx_main_v320 (ix2 i c) = ix2 ⟨0 + i.val, by omega⟩ c :=
  funext fun a => Fin.ext (by match a with | ⟨0, _⟩ => exact (Nat.zero_add i.val).symm | ⟨1, _⟩ => rfl)
theorem emb_idx89 (i : Fin 1024) (c : Fin 128) : idx_main_v321 (ix2 i c) = ix2 ⟨0 + i.val, by omega⟩ c :=
  funext fun a => Fin.ext (by match a with | ⟨0, _⟩ => exact (Nat.zero_add i.val).symm | ⟨1, _⟩ => rfl)
theorem emb_idx90 (i : Fin 1024) (c : Fin 128) : idx_main_v322 (ix2 i c) = ix2 ⟨0 + i.val, by omega⟩ c :=
  funext fun a => Fin.ext (by match a with | ⟨0, _⟩ => exact (Nat.zero_add i.val).symm | ⟨1, _⟩ => rfl)
theorem lidx92 (i : Fin 1024) (j : Fin 512) (k : Fin 1408) : lidx_main_v324 (ix2 i j) k = ix2 i k :=
  funext fun a => Fin.ext (by match a with | ⟨0, _⟩ => rfl | ⟨1, _⟩ => rfl)
theorem ridx92 (i : Fin 1024) (j : Fin 512) (k : Fin 1408) : ridx_main_v324 (ix2 i j) k = ix2 k j :=
  funext fun a => Fin.ext (by match a with | ⟨0, _⟩ => rfl | ⟨1, _⟩ => rfl)
theorem bias_idx92 (i : Fin 1024) (j : Fin 512) : idx_main_v325 (idx_main_v326 (ix2 i j)) = ix1 j :=
  funext fun a => Fin.ext (by match a with | ⟨0, _⟩ => rfl)
theorem lidx97 (i : Fin 1024) (j : Fin 256) (k : Fin 512) : lidx_main_v329 (ix2 i j) k = ix2 i k :=
  funext fun a => Fin.ext (by match a with | ⟨0, _⟩ => rfl | ⟨1, _⟩ => rfl)
theorem ridx97 (i : Fin 1024) (j : Fin 256) (k : Fin 512) : ridx_main_v329 (ix2 i j) k = ix2 k j :=
  funext fun a => Fin.ext (by match a with | ⟨0, _⟩ => rfl | ⟨1, _⟩ => rfl)
theorem bias_idx97 (i : Fin 1024) (j : Fin 256) : idx_main_v330 (idx_main_v331 (ix2 i j)) = ix1 j :=
  funext fun a => Fin.ext (by match a with | ⟨0, _⟩ => rfl)
theorem lidx102 (i : Fin 1024) (j : Fin 128) (k : Fin 256) : lidx_main_v334 (ix2 i j) k = ix2 i k :=
  funext fun a => Fin.ext (by match a with | ⟨0, _⟩ => rfl | ⟨1, _⟩ => rfl)
theorem ridx102 (i : Fin 1024) (j : Fin 128) (k : Fin 256) : ridx_main_v334 (ix2 i j) k = ix2 k j :=
  funext fun a => Fin.ext (by match a with | ⟨0, _⟩ => rfl | ⟨1, _⟩ => rfl)
theorem bias_idx102 (i : Fin 1024) (j : Fin 128) : idx_main_v335 (idx_main_v336 (ix2 i j)) = ix1 j :=
  funext fun a => Fin.ext (by match a with | ⟨0, _⟩ => rfl)

section
variable (x0 x1 : (⟨S64512x32, .f32⟩ : BufTy).Contents (Elt Ideal))
  (x2 : (⟨S64512x1000, .f32⟩ : BufTy).Contents (Elt Ideal))
  (x3 x4 : (⟨S64512x4x64, .f32⟩ : BufTy).Contents (Elt Ideal))
  (x5 : (⟨S64512, .f32⟩ : BufTy).Contents (Elt Ideal))
  (x6 x7 : (⟨S64512, .i32⟩ : BufTy).Contents (Elt Ideal))
  (x8 : (⟨S32x128, .f32⟩ : BufTy).Contents (Elt Ideal))
  (x9 : (⟨S128, .f32⟩ : BufTy).Contents (Elt Ideal))
  (x10 : (⟨S32x128, .f32⟩ : BufTy).Contents (Elt Ideal))
  (x11 : (⟨S128, .f32⟩ : BufTy).Contents (Elt Ideal))
  (x12 : (⟨S1000x128, .f32⟩ : BufTy).Contents (Elt Ideal))
  (x13 : (⟨S128, .f32⟩ : BufTy).Contents (Elt Ideal))
  (x14 : (⟨S64x128, .f32⟩ : BufTy).Contents (Elt Ideal))
  (x15 : (⟨S128, .f32⟩ : BufTy).Contents (Elt Ideal))
  (x16 : (⟨S1408x512, .f32⟩ : BufTy).Contents (Elt Ideal))
  (x17 : (⟨S512, .f32⟩ : BufTy).Contents (Elt Ideal))
  (x18 : (⟨S512x256, .f32⟩ : BufTy).Contents (Elt Ideal))
  (x19 : (⟨S256, .f32⟩ : BufTy).Contents (Elt Ideal))
  (x20 : (⟨S256x128, .f32⟩ : BufTy).Contents (Elt Ideal))
  (x21 : (⟨S128, .f32⟩ : BufTy).Contents (Elt Ideal))

theorem piece60 (i : Fin 1024) (j : Fin 128) :
    val_main_v292 (F := Ideal) x0 x1 x2 x3 x4 x5 x6 x7 x8 x9 x10 x11 x12 x13 x14 x15 x16 x17 x18 x19 x20 x21 (ix2 i j)
      = val_main_v280 (F := Ideal) x0 x1 x2 x3 x4 x5 x6 x7 x8 x9 x10 x11 x12 x13 x14 x15 x16 x17 x18 x19 x20 x21 (ix2 ⟨2 * i.val + 0, by omega⟩ j)
          * val_main_v25 (F := Ideal) x6 (ix1 ⟨0 + i.val, by omega⟩) := by
  rw [val_main_v292_apply, val_main_v291_apply, val_main_v289_apply, val_main_v288_apply, val_main_v281_apply,
    val_main_v290_apply, val_main_v285_apply, val_main_v284_apply, child_idx60, mask_idx60]
  rfl

theorem piece65 (i : Fin 1024) (j : Fin 128) :
    val_main_v297 (F := Ideal) x0 x1 x2 x3 x4 x5 x6 x7 x8 x9 x10 x11 x12 x13 x14 x15 x16 x17 x18 x19 x20 x21 (ix2 i j)
      = val_main_v234 (F := Ideal) x0 x1 x2 x3 x4 x5 x6 x7 x8 x9 x10 x11 x12 x13 x14 x15 x16 x17 x18 x19 x20 x21 (ix2 ⟨2 * i.val + 0, by omega⟩ j)
          * val_main_v25 (F := Ideal) x6 (ix1 ⟨0 + i.val, by omega⟩) := by
  rw [val_main_v297_apply, val_main_v296_apply, val_main_v294_apply, val_main_v293_apply, val_main_v282_apply,
    val_main_v295_apply, val_main_v285_apply, val_main_v284_apply, child_idx65, mask_idx65]
  rfl

theorem piece70 (i : Fin 1024) (j : Fin 128) :
    val_main_v302 (F := Ideal) x0 x1 x2 x3 x4 x5 x6 x7 x8 x9 x10 x11 x12 x13 x14 x15 x16 x17 x18 x19 x20 x21 (ix2 i j)
      = val_main_v249 (F := Ideal) x0 x1 x2 x3 x4 x5 x6 x7 x8 x9 x10 x11 x12 x13 x14 x15 x16 x17 x18 x19 x20 x21 (ix2 ⟨2 * i.val + 0, by omega⟩ j)
          * val_main_v25 (F := Ideal) x6 (ix1 ⟨0 + i.val, by omega⟩) := by
  rw [val_main_v302_apply, val_main_v301_apply, val_main_v299_apply, val_main_v298_apply, val_main_v283_apply,
    val_main_v300_apply, val_main_v285_apply, val_main_v284_apply, child_idx70, mask_idx70]
  rfl

theorem piece75 (i : Fin 1024) (j : Fin 128) :
    val_main_v307 (F := Ideal) x0 x1 x2 x3 x4 x5 x6 x7 x8 x9 x10 x11 x12 x13 x14 x15 x16 x17 x18 x19 x20 x21 (ix2 i j)
      = val_main_v280 (F := Ideal) x0 x1 x2 x3 x4 x5 x6 x7 x8 x9 x10 x11 x12 x13 x14 x15 x16 x17 x18 x19 x20 x21 (ix2 ⟨2 * i.val + 1, by omega⟩ j)
          * val_main_v26 (F := Ideal) x7 (ix1 ⟨0 + i.val, by omega⟩) := by
  rw [val_main_v307_apply, val_main_v306_apply, val_main_v304_apply, val_main_v303_apply, val_main_v281_apply,
    val_main_v305_apply, val_main_v287_apply, val_main_v286_apply, child_idx75, mask_idx75]
  rfl

theorem piece80 (i : Fin 1024) (j : Fin 128) :
    val_main_v312 (F := Ideal) x0 x1 x2 x3 x4 x5 x6 x7 x8 x9 x10 x11 x12 x13 x14 x15 x16 x17 x18 x19 x20 x21 (ix2 i j)
      = val_main_v234 (F := Ideal) x0 x1 x2 x3 x4 x5 x6 x7 x8 x9 x10 x11 x12 x13 x14 x15 x16 x17 x18 x19 x20 x21 (ix2 ⟨2 * i.val + 1, by omega⟩ j)
          * val_main_v26 (F := Ideal) x7 (ix1 ⟨0 + i.val, by omega⟩) := by
  rw [val_main_v312_apply, val_main_v311_apply, val_main_v309_apply, val_main_v308_apply, val_main_v282_apply,
    val_main_v310_apply, val_main_v287_apply, val_main_v286_apply, child_idx80, mask_idx80]
  rfl

theorem piece85 (i : Fin 1024) (j : Fin 128) :
    val_main_v317 (F := Ideal) x0 x1 x2 x3 x4 x5 x6 x7 x8 x9 x10 x11 x12 x13 x14 x15 x16 x17 x18 x19 x20 x21 (ix2 i j)
      = val_main_v249 (F := Ideal) x0 x1 x2 x3 x4 x5 x6 x7 x8 x9 x10 x11 x12 x13 x14 x15 x16 x17 x18 x19 x20 x21 (ix2 ⟨2 * i.val + 1, by omega⟩ j)
          * val_main_v26 (F := Ideal) x7 (ix1 ⟨0 + i.val, by omega⟩) := by
  rw [val_main_v317_apply, val_main_v316_apply, val_main_v314_apply, val_main_v313_apply, val_main_v283_apply,
    val_main_v315_apply, val_main_v287_apply, val_main_v286_apply, child_idx85, mask_idx85]
  rfl

theorem emb86 (i : Fin 1024) (c : Fin 128) :
    val_main_v318 (F := Ideal) x0 x8 x9 (ix2 i c) = (embOfArrays x0 x1 x2 x3 x4 x5 x8 x9 x10 x11 x12 x13 x14 x15) ⟨0 + i.val, by omega⟩ 0 c := by
  rw [val_main_v318_apply, emb_idx86]
  exact Emb.op_apply ..

theorem emb87 (i : Fin 1024) (c : Fin 128) :
    val_main_v319 (F := Ideal) x1 x10 x11 (ix2 i c) = (embOfArrays x0 x1 x2 x3 x4 x5 x8 x9 x10 x11 x12 x13 x14 x15) ⟨0 + i.val, by omega⟩ 1 c := by
  rw [val_main_v319_apply, emb_idx87]
  exact Emb.feat_apply ..

theorem emb88 (i : Fin 1024) (c : Fin 128) :
    val_main_v320 (F := Ideal) x3 x14 x15 (ix2 i c) = (embOfArrays x0 x1 x2 x3 x4 x5 x8 x9 x10 x11 x12 x13 x14 x15) ⟨0 + i.val, by omega⟩ 2 c := by
  rw [val_main_v320_apply, emb_idx88]
  exact Emb.c1_apply ..

theorem emb89 (i : Fin 1024) (c : Fin 128) :
    val_main_v321 (F := Ideal) x4 x14 x15 (ix2 i c) = (embOfArrays x0 x1 x2 x3 x4 x5 x8 x9 x10 x11 x12 x13 x14 x15) ⟨0 + i.val, by omega⟩ 3 c := by
  rw [val_main_v321_apply, emb_idx89]
  exact Emb.c2_apply ..

theorem emb90 (i : Fin 1024) (c : Fin 128) :
    val_main_v322 (F := Ideal) x2 x5 x12 x13 (ix2 i c) = (embOfArrays x0 x1 x2 x3 x4 x5 x8 x9 x10 x11 x12 x13 x14 x15) ⟨0 + i.val, by omega⟩ 4 c := by
  rw [val_main_v322_apply, emb_idx90]
  exact Emb.bm_apply ..

theorem cat_row (i : Fin 1024) (k : Fin 1408) :
    val_main_v323 (F := Ideal) x0 x1 x2 x3 x4 x5 x6 x7 x8 x9 x10 x11 x12 x13 x14 x15 x16 x17 x18 x19 x20 x21 (ix2 i k)
      = cat11 (fun q c => (![val_main_v318 (F := Ideal) x0 x8 x9,
          val_main_v319 (F := Ideal) x1 x10 x11,
          val_main_v320 (F := Ideal) x3 x14 x15,
          val_main_v321 (F := Ideal) x4 x14 x15,
          val_main_v322 (F := Ideal) x2 x5 x12 x13,
          val_main_v292 (F := Ideal) x0 x1 x2 x3 x4 x5 x6 x7 x8 x9 x10 x11 x12 x13 x14 x15 x16 x17 x18 x19 x20 x21,
          val_main_v307 (F := Ideal) x0 x1 x2 x3 x4 x5 x6 x7 x8 x9 x10 x11 x12 x13 x14 x15 x16 x17 x18 x19 x20 x21,
          val_main_v297 (F := Ideal) x0 x1 x2 x3 x4 x5 x6 x7 x8 x9 x10 x11 x12 x13 x14 x15 x16 x17 x18 x19 x20 x21,
          val_main_v302 (F := Ideal) x0 x1 x2 x3 x4 x5 x6 x7 x8 x9 x10 x11 x12 x13 x14 x15 x16 x17 x18 x19 x20 x21,
          val_main_v312 (F := Ideal) x0 x1 x2 x3 x4 x5 x6 x7 x8 x9 x10 x11 x12 x13 x14 x15 x16 x17 x18 x19 x20 x21,
          val_main_v317 (F := Ideal) x0 x1 x2 x3 x4 x5 x6 x7 x8 x9 x10 x11 x12 x13 x14 x15 x16 x17 x18 x19 x20 x21] : Fin 11 → S1024x128.Idx → EReal) q (ix2 i c)) k := by
  unfold val_main_v323
  exact concat11_apply _ _ _ _ _ _ _ _ _ _ _ _ i k

section
variable (hrep : ∀ (i : Fin 2048) (j : Fin 128), val_main_v280 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).rep i j)
  (hl : ∀ (i : Fin 2048) (j : Fin 128), val_main_v234 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).lrep i j)
  (hr : ∀ (i : Fin 2048) (j : Fin 128), val_main_v249 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).rrep i j)
include hrep hl hr

theorem pieces_eq (i : Fin 1024) (q : Fin 11) (c : Fin 128) :
    (![val_main_v318 (F := Ideal) x0 x8 x9,
        val_main_v319 (F := Ideal) x1 x10 x11,
        val_main_v320 (F := Ideal) x3 x14 x15,
        val_main_v321 (F := Ideal) x4 x14 x15,
        val_main_v322 (F := Ideal) x2 x5 x12 x13,
        val_main_v292 (F := Ideal) x0 x1 x2 x3 x4 x5 x6 x7 x8 x9 x10 x11 x12 x13 x14 x15 x16 x17 x18 x19 x20 x21,
        val_main_v307 (F := Ideal) x0 x1 x2 x3 x4 x5 x6 x7 x8 x9 x10 x11 x12 x13 x14 x15 x16 x17 x18 x19 x20 x21,
        val_main_v297 (F := Ideal) x0 x1 x2 x3 x4 x5 x6 x7 x8 x9 x10 x11 x12 x13 x14 x15 x16 x17 x18 x19 x20 x21,
        val_main_v302 (F := Ideal) x0 x1 x2 x3 x4 x5 x6 x7 x8 x9 x10 x11 x12 x13 x14 x15 x16 x17 x18 x19 x20 x21,
        val_main_v312 (F := Ideal) x0 x1 x2 x3 x4 x5 x6 x7 x8 x9 x10 x11 x12 x13 x14 x15 x16 x17 x18 x19 x20 x21,
        val_main_v317 (F := Ideal) x0 x1 x2 x3 x4 x5 x6 x7 x8 x9 x10 x11 x12 x13 x14 x15 x16 x17 x18 x19 x20 x21] : Fin 11 → S1024x128.Idx → EReal) q (ix2 i c)
      = pieces ((embOfArrays x0 x1 x2 x3 x4 x5 x8 x9 x10 x11 x12 x13 x14 x15) ⟨0 + i.val, by omega⟩)
          (childPieces ((maskOfArray x6) ⟨0 + i.val, by omega⟩) ((maskOfArray x7) ⟨0 + i.val, by omega⟩)
            (pair (by norm_num) (level1 (embOfArrays x0 x1 x2 x3 x4 x5 x8 x9 x10 x11 x12 x13 x14 x15) (maskOfArray x6) (maskOfArray x7) (MLP3.ofArrays x16 x17 x18 x19 x20 x21)).rep i) (pair (by norm_num) (level1 (embOfArrays x0 x1 x2 x3 x4 x5 x8 x9 x10 x11 x12 x13 x14 x15) (maskOfArray x6) (maskOfArray x7) (MLP3.ofArrays x16 x17 x18 x19 x20 x21)).lrep i) (pair (by norm_num) (level1 (embOfArrays x0 x1 x2 x3 x4 x5 x8 x9 x10 x11 x12 x13 x14 x15) (maskOfArray x6) (maskOfArray x7) (MLP3.ofArrays x16 x17 x18 x19 x20 x21)).rrep i)) q c := by
  match q with
  | ⟨0, _⟩ => rw [sel0, pieces_emb0]; exact emb86 ..
  | ⟨1, _⟩ => rw [sel1, pieces_emb1]; exact emb87 ..
  | ⟨2, _⟩ => rw [sel2, pieces_emb2]; exact emb88 ..
  | ⟨3, _⟩ => rw [sel3, pieces_emb3]; exact emb89 ..
  | ⟨4, _⟩ => rw [sel4, pieces_emb4]; exact emb90 ..
  | ⟨5, _⟩ => rw [sel5, pieces_child5, piece60, hrep, Emb.lm_apply]; rfl
  | ⟨6, _⟩ => rw [sel6, pieces_child6, piece75, hrep, Emb.rm_apply]; rfl
  | ⟨7, _⟩ => rw [sel7, pieces_child7, piece65, hl, Emb.lm_apply]; rfl
  | ⟨8, _⟩ => rw [sel8, pieces_child8, piece70, hr, Emb.lm_apply]; rfl
  | ⟨9, _⟩ => rw [sel9, pieces_child9, piece80, hl, Emb.rm_apply]; rfl
  | ⟨10, _⟩ => rw [sel10, pieces_child10, piece85, hr, Emb.rm_apply]; rfl
  | ⟨n + 11, h⟩ => exact absurd h (by omega)

end

theorem layer1 (i : Fin 1024) (j : Fin 512) :
    val_main_v328 (F := Ideal) x0 x1 x2 x3 x4 x5 x6 x7 x8 x9 x10 x11 x12 x13 x14 x15 x16 x17 x18 x19 x20 x21 (ix2 i j)
      = relu (dense (fun k => val_main_v323 (F := Ideal) x0 x1 x2 x3 x4 x5 x6 x7 x8 x9 x10 x11 x12 x13 x14 x15 x16 x17 x18 x19 x20 x21 (ix2 i k)) (mat x16) (vec x17)) j := by
  rw [val_main_v328_apply, val_main_v327_apply, val_main_v324_apply, val_main_v326_apply, val_main_v325_apply,
    val_main_call15_v0_apply, val_main_call15_cst_apply]
  simp only [lidx92, ridx92, bias_idx92, Ideal.maximumf_def, Ideal.addf_def, Ideal.ofBits_def, Ideal.ofBits_zero_f32]
  rfl

theorem layer2 (i : Fin 1024) (j : Fin 256) :
    val_main_v333 (F := Ideal) x0 x1 x2 x3 x4 x5 x6 x7 x8 x9 x10 x11 x12 x13 x14 x15 x16 x17 x18 x19 x20 x21 (ix2 i j)
      = relu (dense (fun k => val_main_v328 (F := Ideal) x0 x1 x2 x3 x4 x5 x6 x7 x8 x9 x10 x11 x12 x13 x14 x15 x16 x17 x18 x19 x20 x21 (ix2 i k)) (mat x18) (vec x19)) j := by
  rw [val_main_v333_apply, val_main_v332_apply, val_main_v329_apply, val_main_v331_apply, val_main_v330_apply,
    val_main_call16_v0_apply, val_main_call16_cst_apply]
  simp only [lidx97, ridx97, bias_idx97, Ideal.maximumf_def, Ideal.addf_def, Ideal.ofBits_def, Ideal.ofBits_zero_f32]
  rfl

theorem layer3 (i : Fin 1024) (j : Fin 128) :
    val_main_v338 (F := Ideal) x0 x1 x2 x3 x4 x5 x6 x7 x8 x9 x10 x11 x12 x13 x14 x15 x16 x17 x18 x19 x20 x21 (ix2 i j)
      = relu (dense (fun k => val_main_v333 (F := Ideal) x0 x1 x2 x3 x4 x5 x6 x7 x8 x9 x10 x11 x12 x13 x14 x15 x16 x17 x18 x19 x20 x21 (ix2 i k)) (mat x20) (vec x21)) j := by
  rw [val_main_v338_apply, val_main_v337_apply, val_main_v334_apply, val_main_v336_apply, val_main_v335_apply,
    val_main_call17_v0_apply, val_main_call17_cst_apply]
  simp only [lidx102, ridx102, bias_idx102, Ideal.maximumf_def, Ideal.addf_def, Ideal.ofBits_def, Ideal.ofBits_zero_f32]
  rfl

section
variable (hrep : ∀ (i : Fin 2048) (j : Fin 128), val_main_v280 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).rep i j)
  (hl : ∀ (i : Fin 2048) (j : Fin 128), val_main_v234 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).lrep i j)
  (hr : ∀ (i : Fin 2048) (j : Fin 128), val_main_v249 (F := Ideal) x0 x1 x2 x3 x4 x5 x6 x7 x8 x9 x10 x11 x12 x13 x14 x15 x16 x17 x18 x19 x20 x21 (ix2 i j) = (level1 (embOfArrays x0 x1 x2 x3 x4 x5 x8 x9 x10 x11 x12 x13 x14 x15) (maskOfArray x6) (maskOfArray x7) (MLP3.ofArrays x16 x17 x18 x19 x20 x21)).rrep i j)
include hrep hl hr

theorem rep_eq (i : Fin 1024) (j : Fin 128) :
    val_main_v338 (F := Ideal) x0 x1 x2 x3 x4 x5 x6 x7 x8 x9 x10 x11 x12 x13 x14 x15 x16 x17 x18 x19 x20 x21 (ix2 i j) = (level0 (embOfArrays x0 x1 x2 x3 x4 x5 x8 x9 x10 x11 x12 x13 x14 x15) (maskOfArray x6) (maskOfArray x7) (MLP3.ofArrays x16 x17 x18 x19 x20 x21)).rep i j := by
  unfold level0
  rw [step_rep, layer3]
  simp only [layer2, layer1, cat_row, pieces_eq x0 x1 x2 x3 x4 x5 x6 x7 x8 x9 x10 x11 x12 x13 x14 x15 x16 x17 x18 x19 x20 x21 hrep hl hr]
  rfl

theorem lrep_eq (i : Fin 1024) (j : Fin 128) :
    val_main_v292 (F := Ideal) x0 x1 x2 x3 x4 x5 x6 x7 x8 x9 x10 x11 x12 x13 x14 x15 x16 x17 x18 x19 x20 x21 (ix2 i j) = (level0 (embOfArrays x0 x1 x2 x3 x4 x5 x8 x9 x10 x11 x12 x13 x14 x15) (maskOfArray x6) (maskOfArray x7) (MLP3.ofArrays x16 x17 x18 x19 x20 x21)).lrep i j := by
  unfold level0
  rw [step_lrep, piece60, hrep, Emb.lm_apply]

theorem rrep_eq (i : Fin 1024) (j : Fin 128) :
    val_main_v307 (F := Ideal) x0 x1 x2 x3 x4 x5 x6 x7 x8 x9 x10 x11 x12 x13 x14 x15 x16 x17 x18 x19 x20 x21 (ix2 i j) = (level0 (embOfArrays x0 x1 x2 x3 x4 x5 x8 x9 x10 x11 x12 x13 x14 x15) (maskOfArray x6) (maskOfArray x7) (MLP3.ofArrays x16 x17 x18 x19 x20 x21)).rrep i j := by
  unfold level0
  rw [step_rrep, piece75, hrep, Emb.rm_apply]

theorem level_eq :
    (∀ (i : Fin 1024) (j : Fin 128), val_main_v338 (F := Ideal) x0 x1 x2 x3 x4 x5 x6 x7 x8 x9 x10 x11 x12 x13 x14 x15 x16 x17 x18 x19 x20 x21 (ix2 i j) = (level0 (embOfArrays x0 x1 x2 x3 x4 x5 x8 x9 x10 x11 x12 x13 x14 x15) (maskOfArray x6) (maskOfArray x7) (MLP3.ofArrays x16 x17 x18 x19 x20 x21)).rep i j)
    ∧ (∀ (i : Fin 1024) (j : Fin 128), val_main_v292 (F := Ideal) x0 x1 x2 x3 x4 x5 x6 x7 x8 x9 x10 x11 x12 x13 x14 x15 x16 x17 x18 x19 x20 x21 (ix2 i j) = (level0 (embOfArrays x0 x1 x2 x3 x4 x5 x8 x9 x10 x11 x12 x13 x14 x15) (maskOfArray x6) (maskOfArray x7) (MLP3.ofArrays x16 x17 x18 x19 x20 x21)).lrep i j)
    ∧ (∀ (i : Fin 1024) (j : Fin 128), val_main_v307 (F := Ideal) x0 x1 x2 x3 x4 x5 x6 x7 x8 x9 x10 x11 x12 x13 x14 x15 x16 x17 x18 x19 x20 x21 (ix2 i j) = (level0 (embOfArrays x0 x1 x2 x3 x4 x5 x8 x9 x10 x11 x12 x13 x14 x15) (maskOfArray x6) (maskOfArray x7) (MLP3.ofArrays x16 x17 x18 x19 x20 x21)).rrep i j) :=
  ⟨rep_eq x0 x1 x2 x3 x4 x5 x6 x7 x8 x9 x10 x11 x12 x13 x14 x15 x16 x17 x18 x19 x20 x21 hrep hl hr, lrep_eq x0 x1 x2 x3 x4 x5 x6 x7 x8 x9 x10 x11 x12 x13 x14 x15 x16 x17 x18 x19 x20 x21 hrep hl hr, rrep_eq x0 x1 x2 x3 x4 x5 x6 x7 x8 x9 x10 x11 x12 x13 x14 x15 x16 x17 x18 x19 x20 x21 hrep hl hr⟩

end

end

end Cert.ReferenceIdeal.L0

end
-- ==== Proof.RefHead.lean ====
import proofs.«410031_j84061099917532_3_alg».proof.Proof.RefBase
import Idealize.ShloMosaic.Lib.IdealHost

noncomputable section

namespace Cert.ReferenceIdeal.Head

open Idealize.ShloMosaic Cert.ReferenceIdeal Cert.ReferenceIdeal.Stages TreeNN ValueIdx

theorem lidx_339 (r : Fin 1024) (j k : Fin 128) : lidx_main_v339 (ix2 r j) k = ix2 r k :=
  funext fun a => Fin.ext (by match a with | ⟨0, _⟩ => rfl | ⟨1, _⟩ => rfl)

theorem ridx_339 (r : Fin 1024) (j k : Fin 128) : ridx_main_v339 (ix2 r j) k = ix2 k j :=
  funext fun a => Fin.ext (by match a with | ⟨0, _⟩ => rfl | ⟨1, _⟩ => rfl)

theorem idx_340_341 (r : Fin 1024) (j : Fin 128) : idx_main_v340 (idx_main_v341 (ix2 r j)) = ix1 j :=
  funext fun a => Fin.ext (by match a with | ⟨0, _⟩ => rfl)

theorem lidx_344 (r : Fin 1024) (j k : Fin 128) : lidx_main_v344 (ix2 r j) k = ix2 r k :=
  funext fun a => Fin.ext (by match a with | ⟨0, _⟩ => rfl | ⟨1, _⟩ => rfl)

theorem ridx_344 (r : Fin 1024) (j k : Fin 128) : ridx_main_v344 (ix2 r j) k = ix2 k j :=
  funext fun a => Fin.ext (by match a with | ⟨0, _⟩ => rfl | ⟨1, _⟩ => rfl)

theorem idx_345_346 (r : Fin 1024) (j : Fin 128) : idx_main_v345 (idx_main_v346 (ix2 r j)) = ix1 j :=
  funext fun a => Fin.ext (by match a with | ⟨0, _⟩ => rfl)

theorem lidx_349 (r : Fin 1024) (k : Fin 128) : lidx_main_v349 (ix2 r 0) k = ix2 r k :=
  funext fun a => Fin.ext (by match a with | ⟨0, _⟩ => rfl | ⟨1, _⟩ => rfl)

theorem ridx_349 (r : Fin 1024) (k : Fin 128) : ridx_main_v349 (ix2 r 0) k = ix2 k 0 :=
  funext fun a => Fin.ext (by match a with | ⟨0, _⟩ => rfl | ⟨1, _⟩ => rfl)

theorem idx_350_351 (r : Fin 1024) : idx_main_v350 (idx_main_v351 (ix2 r 0)) = ix1 0 :=
  funext fun a => Fin.ext (by match a with | ⟨0, _⟩ => rfl)

theorem lidx_359 (r : Fin 1024) (j k : Fin 128) : lidx_main_v359 (ix2 r j) k = ix2 r k :=
  funext fun a => Fin.ext (by match a with | ⟨0, _⟩ => rfl | ⟨1, _⟩ => rfl)

theorem ridx_359 (r : Fin 1024) (j k : Fin 128) : ridx_main_v359 (ix2 r j) k = ix2 k j :=
  funext fun a => Fin.ext (by match a with | ⟨0, _⟩ => rfl | ⟨1, _⟩ => rfl)

theorem idx_360_361 (r : Fin 1024) (j : Fin 128) : idx_main_v360 (idx_main_v361 (ix2 r j)) = ix1 j :=
  funext fun a => Fin.ext (by match a with | ⟨0, _⟩ => rfl)

theorem lidx_364 (r : Fin 1024) (j k : Fin 128) : lidx_main_v364 (ix2 r j) k = ix2 r k :=
  funext fun a => Fin.ext (by match a with | ⟨0, _⟩ => rfl | ⟨1, _⟩ => rfl)

theorem ridx_364 (r : Fin 1024) (j k : Fin 128) : ridx_main_v364 (ix2 r j) k = ix2 k j :=
  funext fun a => Fin.ext (by match a with | ⟨0, _⟩ => rfl | ⟨1, _⟩ => rfl)

theorem idx_365_366 (r : Fin 1024) (j : Fin 128) : idx_main_v365 (idx_main_v366 (ix2 r j)) = ix1 j :=
  funext fun a => Fin.ext (by match a with | ⟨0, _⟩ => rfl)

theorem lidx_369 (r : Fin 1024) (k : Fin 128) : lidx_main_v369 (ix2 r 0) k = ix2 r k :=
  funext fun a => Fin.ext (by match a with | ⟨0, _⟩ => rfl | ⟨1, _⟩ => rfl)

theorem ridx_369 (r : Fin 1024) (k : Fin 128) : ridx_main_v369 (ix2 r 0) k = ix2 k 0 :=
  funext fun a => Fin.ext (by match a with | ⟨0, _⟩ => rfl | ⟨1, _⟩ => rfl)

theorem idx_370_371 (r : Fin 1024) : idx_main_v370 (idx_main_v371 (ix2 r 0)) = ix1 0 :=
  funext fun a => Fin.ext (by match a with | ⟨0, _⟩ => rfl)

section

variable (x0 x1 : (⟨S64512x32, .f32⟩ : BufTy).Contents (Elt Ideal)) (x2 : (⟨S64512x1000, .f32⟩ : BufTy).Contents (Elt Ideal)) (x3 x4 : (⟨S64512x4x64, .f32⟩ : BufTy).Contents (Elt Ideal))
  (x5 : (⟨S64512, .f32⟩ : BufTy).Contents (Elt Ideal)) (x6 x7 : (⟨S64512, .i32⟩ : BufTy).Contents (Elt Ideal))
  (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal))
  (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal))
  (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal))
  (x20 : (⟨S256x128, .f32⟩ : BufTy).Contents (Elt Ideal)) (x21 : (⟨S128, .f32⟩ : BufTy).Contents (Elt Ideal))
  (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal))
  (x26 : (⟨S128x1, .f32⟩ : BufTy).Contents (Elt Ideal)) (x27 : (⟨S1, .f32⟩ : BufTy).Contents (Elt Ideal))
  (x28 : (⟨S128x128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal))
  (x32 : (⟨S128x1, .f32⟩ : BufTy).Contents (Elt Ideal)) (x33 : (⟨S1, .f32⟩ : BufTy).Contents (Elt Ideal))

theorem cost_l1 (root : Fin 1024 → Fin 128 → EReal)
    (hroot : ∀ (r : Fin 1024) (j : Fin 128), val_main_v338 (F := Ideal) x0 x1 x2 x3 x4 x5 x6 x7 x8 x9 x10 x11 x12 x13 x14 x15 x16 x17 x18 x19 x20 x21 (ix2 r j) = root r j) (r : Fin 1024) (j : Fin 128) :
    val_main_v343 (F := Ideal) x0 x1 x2 x3 x4 x5 x6 x7 x8 x9 x10 x11 x12 x13 x14 x15 x16 x17 x18 x19 x20 x21 x22 x23 (ix2 r j) = relu (dense (root r) (mat x22) (vec x23)) j := by
  rw [val_main_v343_apply, val_main_v342_apply, val_main_v339_apply, val_main_v341_apply, val_main_v340_apply,
    val_main_call18_v0_apply, val_main_call18_cst_apply]
  simp only [lidx_339, ridx_339, idx_340_341, hroot, Ideal.maximumf_def, Ideal.addf_def, Ideal.ofBits_def,
    Ideal.ofBits_zero_f32]
  rfl

theorem cost_l2 (root : Fin 1024 → Fin 128 → EReal)
    (hroot : ∀ (r : Fin 1024) (j : Fin 128), val_main_v338 (F := Ideal) x0 x1 x2 x3 x4 x5 x6 x7 x8 x9 x10 x11 x12 x13 x14 x15 x16 x17 x18 x19 x20 x21 (ix2 r j) = root r j) (r : Fin 1024) (j : Fin 128) :
    val_main_v348 (F := Ideal) x0 x1 x2 x3 x4 x5 x6 x7 x8 x9 x10 x11 x12 x13 x14 x15 x16 x17 x18 x19 x20 x21 x22 x23 x24 x25 (ix2 r j) = relu (dense (relu (dense (root r) (mat x22) (vec x23))) (mat x24) (vec x25)) j := by
  rw [val_main_v348_apply, val_main_v347_apply, val_main_v344_apply, val_main_v346_apply, val_main_v345_apply,
    val_main_call19_v0_apply, val_main_call19_cst_apply]
  simp only [lidx_344, ridx_344, idx_345_346, cost_l1 x0 x1 x2 x3 x4 x5 x6 x7 x8 x9 x10 x11 x12 x13 x14 x15 x16 x17 x18 x19 x20 x21 x22 x23 root hroot, Ideal.maximumf_def, Ideal.addf_def,
    Ideal.ofBits_def, Ideal.ofBits_zero_f32]
  rfl

theorem cost_l3 (root : Fin 1024 → Fin 128 → EReal)
    (hroot : ∀ (r : Fin 1024) (j : Fin 128), val_main_v338 (F := Ideal) x0 x1 x2 x3 x4 x5 x6 x7 x8 x9 x10 x11 x12 x13 x14 x15 x16 x17 x18 x19 x20 x21 (ix2 r j) = root r j) (r : Fin 1024) :
    val_main_v352 (F := Ideal) x0 x1 x2 x3 x4 x5 x6 x7 x8 x9 x10 x11 x12 x13 x14 x15 x16 x17 x18 x19 x20 x21 x22 x23 x24 x25 x26 x27 (ix2 r 0) = dense (relu (dense (relu (dense (root r) (mat x22) (vec x23))) (mat x24) (vec x25))) (mat x26) (vec x27) 0 := by
  rw [val_main_v352_apply, val_main_v349_apply, val_main_v351_apply, val_main_v350_apply]
  simp only [lidx_349, ridx_349, idx_350_351, cost_l2 x0 x1 x2 x3 x4 x5 x6 x7 x8 x9 x10 x11 x12 x13 x14 x15 x16 x17 x18 x19 x20 x21 x22 x23 x24 x25 root hroot, Ideal.addf_def]
  rfl

theorem cost_of_root (root : Fin 1024 → Fin 128 → EReal)
    (hroot : ∀ (r : Fin 1024) (j : Fin 128), val_main_v338 (F := Ideal) x0 x1 x2 x3 x4 x5 x6 x7 x8 x9 x10 x11 x12 x13 x14 x15 x16 x17 x18 x19 x20 x21 (ix2 r j) = root r j) (r : Fin 1024) :
    val_main_v358 (F := Ideal) x0 x1 x2 x3 x4 x5 x6 x7 x8 x9 x10 x11 x12 x13 x14 x15 x16 x17 x18 x19 x20 x21 x22 x23 x24 x25 x26 x27 (ix2 r 0) = (HeadW.ofArrays x22 x23 x24 x25 x26 x27).apply (root r) := by
  rw [val_main_v358_apply, val_main_v357_apply, val_main_cst_3_apply, val_main_v356_apply, val_main_v355_apply,
    val_main_cst_2_apply, val_main_v354_apply, val_main_v353_apply, cost_l3 x0 x1 x2 x3 x4 x5 x6 x7 x8 x9 x10 x11 x12 x13 x14 x15 x16 x17 x18 x19 x20 x21 x22 x23 x24 x25 x26 x27 root hroot r]
  simp only [Ideal.hostDivf_def, Ideal.addf_def, Ideal.hostUnary_exp_def, Ideal.hostNegf_def, Ideal.negf_def, Ideal.ofBits_def,
    Ideal.ofBits_one_f32]
  rfl

theorem cost_apply
    (hroot : ∀ (r : Fin 1024) (j : Fin 128), val_main_v338 (F := Ideal) x0 x1 x2 x3 x4 x5 x6 x7 x8 x9 x10 x11 x12 x13 x14 x15 x16 x17 x18 x19 x20 x21 (ix2 r j)
      = (level0 (embOfArrays x0 x1 x2 x3 x4 x5 x8 x9 x10 x11 x12 x13 x14 x15) (maskOfArray x6) (maskOfArray x7)
          (MLP3.ofArrays x16 x17 x18 x19 x20 x21)).rep r j) (r : Fin 1024) :
    val_main_v358 (F := Ideal) x0 x1 x2 x3 x4 x5 x6 x7 x8 x9 x10 x11 x12 x13 x14 x15 x16 x17 x18 x19 x20 x21 x22 x23 x24 x25 x26 x27 (ix2 r 0)
      = (HeadW.ofArrays x22 x23 x24 x25 x26 x27).apply
          ((level0 (embOfArrays x0 x1 x2 x3 x4 x5 x8 x9 x10 x11 x12 x13 x14 x15) (maskOfArray x6) (maskOfArray x7)
            (MLP3.ofArrays x16 x17 x18 x19 x20 x21)).rep r) :=
  cost_of_root x0 x1 x2 x3 x4 x5 x6 x7 x8 x9 x10 x11 x12 x13 x14 x15 x16 x17 x18 x19 x20 x21 x22 x23 x24 x25 x26 x27 _ hroot r

theorem card_l1 (root : Fin 1024 → Fin 128 → EReal)
    (hroot : ∀ (r : Fin 1024) (j : Fin 128), val_main_v338 (F := Ideal) x0 x1 x2 x3 x4 x5 x6 x7 x8 x9 x10 x11 x12 x13 x14 x15 x16 x17 x18 x19 x20 x21 (ix2 r j) = root r j) (r : Fin 1024) (j : Fin 128) :
    val_main_v363 (F := Ideal) x0 x1 x2 x3 x4 x5 x6 x7 x8 x9 x10 x11 x12 x13 x14 x15 x16 x17 x18 x19 x20 x21 x28 x29 (ix2 r j) = relu (dense (root r) (mat x28) (vec x29)) j := by
  rw [val_main_v363_apply, val_main_v362_apply, val_main_v359_apply, val_main_v361_apply, val_main_v360_apply,
    val_main_call20_v0_apply, val_main_call20_cst_apply]
  simp only [lidx_359, ridx_359, idx_360_361, hroot, Ideal.maximumf_def, Ideal.addf_def, Ideal.ofBits_def,
    Ideal.ofBits_zero_f32]
  rfl

theorem card_l2 (root : Fin 1024 → Fin 128 → EReal)
    (hroot : ∀ (r : Fin 1024) (j : Fin 128), val_main_v338 (F := Ideal) x0 x1 x2 x3 x4 x5 x6 x7 x8 x9 x10 x11 x12 x13 x14 x15 x16 x17 x18 x19 x20 x21 (ix2 r j) = root r j) (r : Fin 1024) (j : Fin 128) :
    val_main_v368 (F := Ideal) x0 x1 x2 x3 x4 x5 x6 x7 x8 x9 x10 x11 x12 x13 x14 x15 x16 x17 x18 x19 x20 x21 x28 x29 x30 x31 (ix2 r j) = relu (dense (relu (dense (root r) (mat x28) (vec x29))) (mat x30) (vec x31)) j := by
  rw [val_main_v368_apply, val_main_v367_apply, val_main_v364_apply, val_main_v366_apply, val_main_v365_apply,
    val_main_call21_v0_apply, val_main_call21_cst_apply]
  simp only [lidx_364, ridx_364, idx_365_366, card_l1 x0 x1 x2 x3 x4 x5 x6 x7 x8 x9 x10 x11 x12 x13 x14 x15 x16 x17 x18 x19 x20 x21 x28 x29 root hroot, Ideal.maximumf_def, Ideal.addf_def,
    Ideal.ofBits_def, Ideal.ofBits_zero_f32]
  rfl

theorem card_l3 (root : Fin 1024 → Fin 128 → EReal)
    (hroot : ∀ (r : Fin 1024) (j : Fin 128), val_main_v338 (F := Ideal) x0 x1 x2 x3 x4 x5 x6 x7 x8 x9 x10 x11 x12 x13 x14 x15 x16 x17 x18 x19 x20 x21 (ix2 r j) = root r j) (r : Fin 1024) :
    val_main_v372 (F := Ideal) x0 x1 x2 x3 x4 x5 x6 x7 x8 x9 x10 x11 x12 x13 x14 x15 x16 x17 x18 x19 x20 x21 x28 x29 x30 x31 x32 x33 (ix2 r 0) = dense (relu (dense (relu (dense (root r) (mat x28) (vec x29))) (mat x30) (vec x31))) (mat x32) (vec x33) 0 := by
  rw [val_main_v372_apply, val_main_v369_apply, val_main_v371_apply, val_main_v370_apply]
  simp only [lidx_369, ridx_369, idx_370_371, card_l2 x0 x1 x2 x3 x4 x5 x6 x7 x8 x9 x10 x11 x12 x13 x14 x15 x16 x17 x18 x19 x20 x21 x28 x29 x30 x31 root hroot, Ideal.addf_def]
  rfl

theorem card_of_root (root : Fin 1024 → Fin 128 → EReal)
    (hroot : ∀ (r : Fin 1024) (j : Fin 128), val_main_v338 (F := Ideal) x0 x1 x2 x3 x4 x5 x6 x7 x8 x9 x10 x11 x12 x13 x14 x15 x16 x17 x18 x19 x20 x21 (ix2 r j) = root r j) (r : Fin 1024) :
    val_main_v378 (F := Ideal) x0 x1 x2 x3 x4 x5 x6 x7 x8 x9 x10 x11 x12 x13 x14 x15 x16 x17 x18 x19 x20 x21 x28 x29 x30 x31 x32 x33 (ix2 r 0) = (HeadW.ofArrays x28 x29 x30 x31 x32 x33).apply (root r) := by
  rw [val_main_v378_apply, val_main_v377_apply, val_main_cst_5_apply, val_main_v376_apply, val_main_v375_apply,
    val_main_cst_4_apply, val_main_v374_apply, val_main_v373_apply, card_l3 x0 x1 x2 x3 x4 x5 x6 x7 x8 x9 x10 x11 x12 x13 x14 x15 x16 x17 x18 x19 x20 x21 x28 x29 x30 x31 x32 x33 root hroot r]
  simp only [Ideal.hostDivf_def, Ideal.addf_def, Ideal.hostUnary_exp_def, Ideal.hostNegf_def, Ideal.negf_def, Ideal.ofBits_def,
    Ideal.ofBits_one_f32]
  rfl

theorem card_apply
    (hroot : ∀ (r : Fin 1024) (j : Fin 128), val_main_v338 (F := Ideal) x0 x1 x2 x3 x4 x5 x6 x7 x8 x9 x10 x11 x12 x13 x14 x15 x16 x17 x18 x19 x20 x21 (ix2 r j)
      = (level0 (embOfArrays x0 x1 x2 x3 x4 x5 x8 x9 x10 x11 x12 x13 x14 x15) (maskOfArray x6) (maskOfArray x7)
          (MLP3.ofArrays x16 x17 x18 x19 x20 x21)).rep r j) (r : Fin 1024) :
    val_main_v378 (F := Ideal) x0 x1 x2 x3 x4 x5 x6 x7 x8 x9 x10 x11 x12 x13 x14 x15 x16 x17 x18 x19 x20 x21 x28 x29 x30 x31 x32 x33 (ix2 r 0)
      = (HeadW.ofArrays x28 x29 x30 x31 x32 x33).apply
          ((level0 (embOfArrays x0 x1 x2 x3 x4 x5 x8 x9 x10 x11 x12 x13 x14 x15) (maskOfArray x6) (maskOfArray x7)
            (MLP3.ofArrays x16 x17 x18 x19 x20 x21)).rep r) :=
  card_of_root x0 x1 x2 x3 x4 x5 x6 x7 x8 x9 x10 x11 x12 x13 x14 x15 x16 x17 x18 x19 x20 x21 x28 x29 x30 x31 x32 x33 _ hroot r

end

end Cert.ReferenceIdeal.Head

end
-- ==== Proof.RefResults.lean ====
import proofs.«410031_j84061099917532_3_alg».proof.Proof.RefL5
import proofs.«410031_j84061099917532_3_alg».proof.Proof.RefL4
import proofs.«410031_j84061099917532_3_alg».proof.Proof.RefL3
import proofs.«410031_j84061099917532_3_alg».proof.Proof.RefL2
import proofs.«410031_j84061099917532_3_alg».proof.Proof.RefL1
import proofs.«410031_j84061099917532_3_alg».proof.Proof.RefL0
import proofs.«410031_j84061099917532_3_alg».proof.Proof.RefHead

noncomputable section

open Idealize.ShloMosaic Idealize.ShloMosaic.TcCoe Idealize.SL.Sem
open TreeNN ValueIdx

namespace Cert.ReferenceIdeal.Chain

open Cert.ReferenceIdeal Cert.ReferenceIdeal.Stages

variable (x0 : (⟨S64512x32, .f32⟩ : BufTy).Contents (Elt Ideal)) (x1 : (⟨S64512x32, .f32⟩ : BufTy).Contents (Elt Ideal)) (x2 : (⟨S64512x1000, .f32⟩ : BufTy).Contents (Elt Ideal)) (x3 : (⟨S64512x4x64, .f32⟩ : BufTy).Contents (Elt Ideal)) (x4 : (⟨S64512x4x64, .f32⟩ : BufTy).Contents (Elt Ideal)) (x5 : (⟨S64512, .f32⟩ : BufTy).Contents (Elt Ideal)) (x6 : (⟨S64512, .i32⟩ : BufTy).Contents (Elt Ideal)) (x7 : (⟨S64512, .i32⟩ : BufTy).Contents (Elt Ideal)) (x8 : (⟨S32x128, .f32⟩ : BufTy).Contents (Elt Ideal)) (x9 : (⟨S128, .f32⟩ : BufTy).Contents (Elt Ideal)) (x10 : (⟨S32x128, .f32⟩ : BufTy).Contents (Elt Ideal)) (x11 : (⟨S128, .f32⟩ : BufTy).Contents (Elt Ideal)) (x12 : (⟨S1000x128, .f32⟩ : BufTy).Contents (Elt Ideal)) (x13 : (⟨S128, .f32⟩ : BufTy).Contents (Elt Ideal)) (x14 : (⟨S64x128, .f32⟩ : BufTy).Contents (Elt Ideal)) (x15 : (⟨S128, .f32⟩ : BufTy).Contents (Elt Ideal)) (x16 : (⟨S1408x512, .f32⟩ : BufTy).Contents (Elt Ideal)) (x17 : (⟨S512, .f32⟩ : BufTy).Contents (Elt Ideal)) (x18 : (⟨S512x256, .f32⟩ : BufTy).Contents (Elt Ideal)) (x19 : (⟨S256, .f32⟩ : BufTy).Contents (Elt Ideal)) (x20 : (⟨S256x128, .f32⟩ : BufTy).Contents (Elt Ideal)) (x21 : (⟨S128, .f32⟩ : BufTy).Contents (Elt Ideal)) (x22 : (⟨S128x128, .f32⟩ : BufTy).Contents (Elt Ideal)) (x23 : (⟨S128, .f32⟩ : BufTy).Contents (Elt Ideal)) (x24 : (⟨S128x128, .f32⟩ : BufTy).Contents (Elt Ideal)) (x25 : (⟨S128, .f32⟩ : BufTy).Contents (Elt Ideal)) (x26 : (⟨S128x1, .f32⟩ : BufTy).Contents (Elt Ideal)) (x27 : (⟨S1, .f32⟩ : BufTy).Contents (Elt Ideal)) (x28 : (⟨S128x128, .f32⟩ : BufTy).Contents (Elt Ideal)) (x29 : (⟨S128, .f32⟩ : BufTy).Contents (Elt Ideal)) (x30 : (⟨S128x128, .f32⟩ : BufTy).Contents (Elt Ideal)) (x31 : (⟨S128, .f32⟩ : BufTy).Contents (Elt Ideal)) (x32 : (⟨S128x1, .f32⟩ : BufTy).Contents (Elt Ideal)) (x33 : (⟨S1, .f32⟩ : BufTy).Contents (Elt Ideal))

theorem roots_eq (r : Fin 1024) (j : Fin 128) :
    val_main_v338 (F := Ideal) x0 x1 x2 x3 x4 x5 x6 x7 x8 x9 x10 x11 x12 x13 x14 x15 x16 x17 x18 x19 x20 x21 (ix2 r j) = (level0 (embOfArrays x0 x1 x2 x3 x4 x5 x8 x9 x10 x11 x12 x13 x14 x15) (maskOfArray x6) (maskOfArray x7) (MLP3.ofArrays x16 x17 x18 x19 x20 x21)).rep r j := by
  have h4 := L4.level_eq x0 x1 x2 x3 x4 x5 x6 x7 x8 x9 x10 x11 x12 x13 x14 x15 x16 x17 x18 x19 x20 x21 (fun i j => L5.rep_apply x0 x1 x2 x3 x4 x5 x8 x9 x10 x11 x12 x13 x14 x15 x16 x17 x18 x19 x20 x21 i j) (fun i j => L5.zeros_apply i j) (fun i j => L5.zeros_apply i j)
  have h3 := L3.level_eq x0 x1 x2 x3 x4 x5 x6 x7 x8 x9 x10 x11 x12 x13 x14 x15 x16 x17 x18 x19 x20 x21 h4.1 h4.2.1 h4.2.2
  have h2 := L2.level_eq x0 x1 x2 x3 x4 x5 x6 x7 x8 x9 x10 x11 x12 x13 x14 x15 x16 x17 x18 x19 x20 x21 h3.1 h3.2.1 h3.2.2
  have h1 := L1.level_eq x0 x1 x2 x3 x4 x5 x6 x7 x8 x9 x10 x11 x12 x13 x14 x15 x16 x17 x18 x19 x20 x21 h2.1 h2.2.1 h2.2.2
  exact (L0.level_eq x0 x1 x2 x3 x4 x5 x6 x7 x8 x9 x10 x11 x12 x13 x14 x15 x16 x17 x18 x19 x20 x21 h1.1 h1.2.1 h1.2.2).1 r j

theorem cost_eq (r : Fin 1024) :
    val_main_v358 (F := Ideal) x0 x1 x2 x3 x4 x5 x6 x7 x8 x9 x10 x11 x12 x13 x14 x15 x16 x17 x18 x19 x20 x21 x22 x23 x24 x25 x26 x27 (ix2 r 0)
      = (HeadW.ofArrays x22 x23 x24 x25 x26 x27).apply ((level0 (embOfArrays x0 x1 x2 x3 x4 x5 x8 x9 x10 x11 x12 x13 x14 x15) (maskOfArray x6) (maskOfArray x7) (MLP3.ofArrays x16 x17 x18 x19 x20 x21)).rep r) :=
  Head.cost_apply x0 x1 x2 x3 x4 x5 x6 x7 x8 x9 x10 x11 x12 x13 x14 x15 x16 x17 x18 x19 x20 x21 x22 x23 x24 x25 x26 x27 (roots_eq x0 x1 x2 x3 x4 x5 x6 x7 x8 x9 x10 x11 x12 x13 x14 x15 x16 x17 x18 x19 x20 x21) r

theorem card_eq (r : Fin 1024) :
    val_main_v378 (F := Ideal) x0 x1 x2 x3 x4 x5 x6 x7 x8 x9 x10 x11 x12 x13 x14 x15 x16 x17 x18 x19 x20 x21 x28 x29 x30 x31 x32 x33 (ix2 r 0)
      = (HeadW.ofArrays x28 x29 x30 x31 x32 x33).apply ((level0 (embOfArrays x0 x1 x2 x3 x4 x5 x8 x9 x10 x11 x12 x13 x14 x15) (maskOfArray x6) (maskOfArray x7) (MLP3.ofArrays x16 x17 x18 x19 x20 x21)).rep r) :=
  Head.card_apply x0 x1 x2 x3 x4 x5 x6 x7 x8 x9 x10 x11 x12 x13 x14 x15 x16 x17 x18 x19 x20 x21 x28 x29 x30 x31 x32 x33 (roots_eq x0 x1 x2 x3 x4 x5 x6 x7 x8 x9 x10 x11 x12 x13 x14 x15 x16 x17 x18 x19 x20 x21) r

end Cert.ReferenceIdeal.Chain

end
-- ==== Proof.Join.lean ====
import proofs.«410031_j84061099917532_3_alg».proof.Defs
import proofs.«410031_j84061099917532_3_alg».proof.Proof.KResults
import proofs.«410031_j84061099917532_3_alg».proof.Proof.RefResults

noncomputable section

open Idealize.ShloMosaic Idealize.ShloMosaic.TcCoe Idealize.SL.Sem
open TreeNN ValueIdx

namespace Cert.Proof.Join

/-- Row by row both sides are the first head of the specification's root level, so the arrays are equal. -/
theorem cost_join (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) :
    Cert.ReferenceIdeal.Stages.val_main_v358 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27))
      = Cert.KernelIdeal.Gen.W14 m ρ c (Proc.devRef .tc Cert.KernelIdeal.main_v93_0) := by
  rw [h0, h1, h2, h3, h4, h5, h6, h7, h8, h9, h10, h11, h12, h13, h14, h15, h16, h17, h18, h19, h20, h21, h22, h23, h24, h25, h26, h27]
  refine TreeNN.extCol fun r => ?_
  rw [Cert.ReferenceIdeal.Chain.cost_eq, (Cert.KernelIdeal.Chain.results m ρ c).1, TreeNN.arrCol_ix2]
  rfl

/-- Row by row both sides are the second head of the specification's root level. -/
theorem card_join (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (h29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (h30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30))
    (h31 : m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31))
    (h32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32))
    (h33 : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)) :
    Cert.ReferenceIdeal.Stages.val_main_v378 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg28)) (m' ((c.tc : Thread Cert.ReferenceIdeal.nD Cert.ReferenceIdeal.τ).loc Cert.ReferenceIdeal.main_arg29)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) (m' ((c.tc : Thread Cert.ReferenceIdeal.nD Cert.ReferenceIdeal.τ).loc Cert.ReferenceIdeal.main_arg32)) (m' ((c.tc : Thread Cert.ReferenceIdeal.nD Cert.ReferenceIdeal.τ).loc Cert.ReferenceIdeal.main_arg33))
      = Cert.KernelIdeal.Gen.W14 m ρ c (Proc.devRef .tc Cert.KernelIdeal.main_v93_1) := by
  rw [h0, h1, h2, h3, h4, h5, h6, h7, h8, h9, h10, h11, h12, h13, h14, h15, h16, h17, h18, h19, h20, h21, h28, h29, h30, h31, h32, h33]
  refine TreeNN.extCol fun r => ?_
  rw [Cert.ReferenceIdeal.Chain.card_eq, (Cert.KernelIdeal.Chain.results m ρ c).2, TreeNN.arrCol_ix2]
  rfl

end Cert.Proof.Join

end
-- ==== Proof.lean ====
import proofs.«410031_j84061099917532_3_alg».proof.Defs
import proofs.«410031_j84061099917532_3_alg».proof.Proof.Gen.Kernel
import proofs.«410031_j84061099917532_3_alg».proof.Proof.Gen.Kernel.Skeleton
import proofs.«410031_j84061099917532_3_alg».proof.Proof.Gen.Kernel.Launch
import proofs.«410031_j84061099917532_3_alg».proof.Proof.Gen.Kernel.Points
import proofs.«410031_j84061099917532_3_alg».proof.Proof.Gen.Kernel.Frame
import proofs.«410031_j84061099917532_3_alg».proof.Proof.Gen.KernelIdeal
import proofs.«410031_j84061099917532_3_alg».proof.Proof.Gen.KernelIdeal.Skeleton
import proofs.«410031_j84061099917532_3_alg».proof.Proof.Gen.KernelIdeal.Launch
import proofs.«410031_j84061099917532_3_alg».proof.Proof.Gen.KernelIdeal.Points
import proofs.«410031_j84061099917532_3_alg».proof.Proof.Gen.KernelIdeal.Frame
import proofs.«410031_j84061099917532_3_alg».proof.Proof.Gen.ReferenceIdeal
import proofs.«410031_j84061099917532_3_alg».proof.Proof.Gen.Pre_finite_inputs
import proofs.«410031_j84061099917532_3_alg».proof.Proof.RunValues
import proofs.«410031_j84061099917532_3_alg».proof.Proof.RefRun
import proofs.«410031_j84061099917532_3_alg».proof.Proof.Join
import Idealize.ShloMosaic.Adequacy
import Idealize.ShloMosaic.Init

noncomputable section

namespace Cert.Proof

open Idealize.ShloMosaic Idealize.SL.Sem Cert.Kernel

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference runs to completion and leaves its arguments as they were: its run over stages, the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.StagedRun.run m ρ)

/-- Both programs end at the two heads of the specification's root level, of argument arrays that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Gen.W14 m ρ c (Proc.devRef .tc Cert.KernelIdeal.main_v93_0),
    fun c => Cert.KernelIdeal.Gen.W14 m ρ c (Proc.devRef .tc Cert.KernelIdeal.main_v93_1),
    Cert.KernelIdeal.RunValues.run_values (F := Ideal) m ρ, ?_⟩
  refine (θ_run Cert.ReferenceIdeal.defs _ _).mono (fun _ h c => ?_) (Cert.ReferenceIdeal.StagedRun.run m' ρ')
  obtain ⟨h0, h1, h2, h3, h4, h5, h6, h7, h8, h9, h10, h11, h12, h13, h14, h15, h16, h17, h18, h19, h20, h21, h22, h23, h24, h25, h26, h27, h28, h29, h30, h31, h32, h33⟩ := hagree c
  exact ⟨(h c).1.trans (Join.cost_join m ρ m' c h0 h1 h2 h3 h4 h5 h6 h7 h8 h9 h10 h11 h12 h13 h14 h15 h16 h17 h18 h19 h20 h21 h22 h23 h24 h25 h26 h27),
    (h c).2.1.trans (Join.card_join m ρ m' c h0 h1 h2 h3 h4 h5 h6 h7 h8 h9 h10 h11 h12 h13 h14 h15 h16 h17 h18 h19 h20 h21 h28 h29 h30 h31 h32 h33), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
